-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8192x1024 : Shape := ⟨2, ![8192, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x4096x1024 .f32) (main_arg1 : FVec F S8192x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x4096x1024 : Shape := ⟨3, ![4, 4096, 1024]⟩
abbrev S8192x1024 : Shape := ⟨2, ![8192, 1024]⟩
abbrev S4096x1024 : Shape := ⟨2, ![4096, 1024]⟩
abbrev S4x4x1024 : Shape := ⟨3, ![4, 4, 1024]⟩
abbrev S4x4x4x1024 : Shape := ⟨4, ![4, 4, 4, 1024]⟩
abbrev S2x4x4x1024 : Shape := ⟨4, ![2, 4, 4, 1024]⟩
abbrev S_ : Shape := ⟨0, ![]⟩
abbrev S1x4x1024 : Shape := ⟨3, ![1, 4, 1024]⟩
abbrev S4x1024 : Shape := ⟨2, ![4, 1024]⟩
abbrev S1x1x4x1024 : Shape := ⟨4, ![1, 1, 4, 1024]⟩
abbrev S1x1x16 : Shape := ⟨3, ![1, 1, 16]⟩
abbrev S16 : Shape := ⟨1, ![16]⟩
abbrev S1x1x1x16 : Shape := ⟨4, ![1, 1, 1, 16]⟩

abbrev nBuf : Table → Nat
  | .hbm => 4
  | .local .scVector .vmem => 3
  | _ => 0

abbrev bufTy : (tb : Table) → Fin (nBuf tb) → BufTy
  | .hbm, ⟨0, _⟩ => ⟨S4x4096x1024, .f32⟩
  | .hbm, ⟨1, _⟩ => ⟨S8192x1024, .f32⟩
  | .hbm, ⟨2, _⟩ => ⟨S4096x1024, .f32⟩
  | .hbm, ⟨3, _⟩ => ⟨S4x4096x1024, .f32⟩
  | .local .scVector .vmem, ⟨0, _⟩ => ⟨S4x4x1024, .f32⟩
  | .local .scVector .vmem, ⟨1, _⟩ => ⟨S4x4x4x1024, .f32⟩
  | .local .scVector .vmem, ⟨2, _⟩ => ⟨S2x4x4x1024, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_3 : BitVec 32 := 0#32
  ![v3.toNat, 0]
def k0_off2 (i : grid0.Coords) (c0_i32 : BitVec 32) : Fin 3 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_12 : BitVec 32 := 0#32
  ![0, v3.toNat, 0]
def k0_off3 (i : grid0.Coords) (c0_i32 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_20 : BitVec 32 := 0#32
  ![1, v3.toNat, 0]
def k0_off4 (i : grid0.Coords) (c0_i32 : BitVec 32) : Fin 3 → Nat :=
  let c2_i32_24 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_29 : BitVec 32 := 0#32
  ![2, v3.toNat, 0]
def k0_off5 (i : grid0.Coords) (c0_i32 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_37 : BitVec 32 := 0#32
  ![3, v3.toNat, 0]
@[reducible] def k0_t1_loop : Scf.Loop 32 :=
  let c0_i32_128 : BitVec 32 := 0#32
  let c8_i32_129 : BitVec 32 := 8#32
  let v120 : BitVec 32 := Scalar.addi c0_i32_128 c8_i32_129
  let c1_i32_130 : BitVec 32 := 1#32
  ⟨c0_i32_128, v120, c1_i32_130⟩
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_209 : BitVec 32 := 0#32
  ![v2.toNat, 0]
def k0_off7 (i : grid0.Coords) : Fin 3 → Nat :=
  let c0_i32_213 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_218 : BitVec 32 := 0#32
  ![0, v2.toNat, 0]
def k0_off8 (i : grid0.Coords) : Fin 3 → Nat :=
  let c1_i32_222 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_227 : BitVec 32 := 0#32
  ![1, v2.toNat, 0]
def k0_off9 (i : grid0.Coords) : Fin 3 → Nat :=
  let c2_i32_231 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_236 : BitVec 32 := 0#32
  ![2, v2.toNat, 0]
def k0_off10 (i : grid0.Coords) : Fin 3 → Nat :=
  let c3_i32_240 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_245 : BitVec 32 := 0#32
  ![3, v2.toNat, 0]
def k0_cond1 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c32_i32 : BitVec 32 := 32#32
  let v227 : BitVec 1 := Scalar.cmpi .slt v226 c32_i32
  let v228 : BitVec 32 := Scalar.extui v227
  let c0_i32_251 : BitVec 32 := 0#32
  let v229 : BitVec 1 := Scalar.cmpi .ne v228 c0_i32_251
  v229

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c4_i32_643 : BitVec 32 := 4#32
  let v575 : BitVec 32 := Scalar.muli v226 c4_i32_643
  let v576 : BitVec 32 := Scalar.addi v2 v575
  let c0_i32_647 : BitVec 32 := 0#32
  ![v576.toNat, 0]
def k0_off12 (i : grid0.Coords) (k0_t1 : Fin k0_t1_loop.trips) : Fin 3 → Nat :=
  let c0_i32_651 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c4_i32_643 : BitVec 32 := 4#32
  let v575 : BitVec 32 := Scalar.muli v226 c4_i32_643
  let v576 : BitVec 32 := Scalar.addi v2 v575
  let c0_i32_656 : BitVec 32 := 0#32
  ![0, v576.toNat, 0]
def k0_off13 (i : grid0.Coords) (k0_t1 : Fin k0_t1_loop.trips) : Fin 3 → Nat :=
  let c1_i32_660 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c4_i32_643 : BitVec 32 := 4#32
  let v575 : BitVec 32 := Scalar.muli v226 c4_i32_643
  let v576 : BitVec 32 := Scalar.addi v2 v575
  let c0_i32_665 : BitVec 32 := 0#32
  ![1, v576.toNat, 0]
def k0_off14 (i : grid0.Coords) (k0_t1 : Fin k0_t1_loop.trips) : Fin 3 → Nat :=
  let c2_i32_669 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c4_i32_643 : BitVec 32 := 4#32
  let v575 : BitVec 32 := Scalar.muli v226 c4_i32_643
  let v576 : BitVec 32 := Scalar.addi v2 v575
  let c0_i32_674 : BitVec 32 := 0#32
  ![2, v576.toNat, 0]
def k0_off15 (i : grid0.Coords) (k0_t1 : Fin k0_t1_loop.trips) : Fin 3 → Nat :=
  let c3_i32_678 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let c0_i32_205 : BitVec 32 := 0#32
  let v186 : BitVec 32 := Scalar.addi v185 c0_i32_205
  let c4_i32_249 : BitVec 32 := 4#32
  let v225 : BitVec 32 := Scalar.addi v186 c4_i32_249
  let c1_i32_250 : BitVec 32 := 1#32
  let v226 : BitVec 32 := Scalar.subi v225 c1_i32_250
  let c4_i32_643 : BitVec 32 := 4#32
  let v575 : BitVec 32 := Scalar.muli v226 c4_i32_643
  let v576 : BitVec 32 := Scalar.addi v2 v575
  let c0_i32_683 : BitVec 32 := 0#32
  ![3, v576.toNat, 0]
def k0_cond2 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c0_i32_252 : BitVec 32 := 0#32
  let v230 : BitVec 1 := Scalar.cmpi .sgt arg14 c0_i32_252
  let v231 : BitVec 32 := Scalar.extui v230
  let c0_i32_253 : BitVec 32 := 0#32
  let v232 : BitVec 1 := Scalar.cmpi .ne v231 c0_i32_253
  v232

def k0_off16 (i : grid0.Coords) : Fin 3 → Nat :=
  let c0_i32_645 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_648 : BitVec 32 := 0#32
  ![0, v2.toNat, 0]
def k0_off17 (i : grid0.Coords) : Fin 3 → Nat :=
  let c1_i32_654 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_657 : BitVec 32 := 0#32
  ![1, v2.toNat, 0]
def k0_off18 (i : grid0.Coords) : Fin 3 → Nat :=
  let c2_i32_663 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_666 : BitVec 32 := 0#32
  ![2, v2.toNat, 0]
def k0_off19 (i : grid0.Coords) : Fin 3 → Nat :=
  let c3_i32_672 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_675 : BitVec 32 := 0#32
  ![3, v2.toNat, 0]
@[reducible] def k0_t2_loop : Scf.Loop 32 :=
  let c0_i32_255 : BitVec 32 := 0#32
  let c4_i32_256 : BitVec 32 := 4#32
  let v233 : BitVec 32 := Scalar.addi c0_i32_255 c4_i32_256
  let c1_i32_257 : BitVec 32 := 1#32
  ⟨c0_i32_255, v233, c1_i32_257⟩
def k0_off20 (k0_t2 : Fin k0_t2_loop.trips) : Fin 3 → Nat :=
  let c0_i32_643 : BitVec 32 := 0#32
  let v575 : Index := Scalar.indexCast c0_i32_643
  let c0_i32_255 : BitVec 32 := 0#32
  let c1_i32_257 : BitVec 32 := 1#32
  let arg15 : BitVec 32 := Scf.iv c0_i32_255 c1_i32_257 k0_t2
  let v576 : Index := Scalar.indexCast arg15
  let c0 : Index := 0#32
  ![0, v576.toNat, 0]
def k0_off21 (k0_t2 : Fin k0_t2_loop.trips) : Fin 3 → Nat :=
  let c0_i32_644 : BitVec 32 := 0#32
  let v579 : Index := Scalar.indexCast c0_i32_644
  let c0_i32_255 : BitVec 32 := 0#32
  let c1_i32_257 : BitVec 32 := 1#32
  let arg15 : BitVec 32 := Scf.iv c0_i32_255 c1_i32_257 k0_t2
  let v580 : Index := Scalar.indexCast arg15
  let c16 : Index := 16#32
  ![0, v580.toNat, 16]
def k0_off22 (k0_t2 : Fin k0_t2_loop.trips) : Fin 3 → Nat :=
  let c0_i32_645 : BitVec 32 := 0#32
  let v583 : Index := Scalar.indexCast c0_i32_645
  let c0_i32_255 : BitVec 32 := 0#32
  let c1_i32_257 : BitVec 32 := 1#32
  let arg15 : BitVec 32 := Scf.iv c0_i32_255 c1_i32_257 k0_t2
  let v584 : Index := Scalar.indexCast arg15
  let c32 : Index := 32#32
  ![0, v584.toNat, 32]
def k0_off23 (k0_t2 : Fin k0_t2_loop.trips) : Fin 3 → Nat :=
  let c0_i32_646 : BitVec 32 := 0#32
  let v587 : Index := Scalar.indexCast c0_i32_646
  let c0_i32_255 : BitVec 32 := 0#32
  let c1_i32_257 : BitVec 32 := 1#32
  let arg15 : BitVec 32 := Scf.iv c0_i32_255 c1_i32_257 k0_t2
  let v588 : Index := Scalar.indexCast arg15
  let c48 : Index := 48#32
  ![0, v588.toNat, 48]
def k0_off24 (k0_t2 : Fin k0_t2_loop.trips) : Fin 3 → Nat :=
  let c0_i32_647 : BitVec 32 := 0#32
  let v591 : Index := Scalar.indexCast c0_i32_647
  let c0_i32_255 : BitVec 32 := 0#32
  let c1_i32_257 : BitVec 32 := 1#32
  let arg15 : BitVec 32 := Scf.iv c0_i32_255 c1_i32_257 k0_t2
  let v592 : Index := Scalar.indexCast arg15
  let c64 : Index := 64#32
  ![0, v592.toNat, 64]
def k0_off25 (k0_t2 : Fin k0_t2_loop.trips) : Fin 3 → Nat :=
  let c0_i32_648 : BitVec 32 := 0#32
  let v595 : Index := Scalar.indexCast c0_i32_648
  let c0_i32_255 : BitVec 32 := 0#32
  let c1_i32_257 : BitVec 32 := 1#32
  let arg15 : BitVec 32 := Scf.iv c0_i32_255 c1_i32_257 k0_t2
  let v596 : Index := Scalar.indexCast arg15
  let c80 : Index := 80#32
  ![0, v596.toNat, 80]
def k0_off26 (k0_t2 : Fin k0_t2_loop.trips) : Fin 3 → Nat :=
  let c0_i32_649 : BitVec 32 := 0#32
  let v599 : Index := Scalar.indexCast c0_i32_649
  let c0_i32_255 : BitVec 32 := 0#32
  let c1_i32_257 : BitVec 32 := 1#32
  let arg15 : BitVec 32 := Scf.iv c0_i32_255 c1_i32_257 k0_t2
  let v600 : Index := Scalar.indexCast arg15
  let c96 : Index := 96#32
  ![0, v600.toNat, 96]
def k0_off27 (k0_t2 : Fin k0_t2_loop.trips) : Fin 3 → Nat :=
  let c0_i32_650 : BitVec 32 := 0#32
  let v603 : Index := Scalar.indexCast c0_i32_650
  let c0_i32_255 : BitVec 32 := 0#32
  let c1_i32_257 : BitVec 32 := 1#32
  let arg15 : BitVec 32 := Scf.iv c0_i32_255 c1_i32_257 k0_t2
  let v604 : Index := Scalar.indexCast arg15
  let c112 : Index := 112#32
  ![0, v604.toNat, 112]
def k0_off28 (k0_t2 : Fin k0_t2_loop.trips) : Fin 3 → Nat :=
  let c0_i32_651 : BitVec 32 := 0#32
  let v607 : Index := Scalar.indexCast c0_i32_651
  let c0_i32_255 : BitVec 32 := 0#32
  let c1_i32_257 : BitVec 32 := 1#32
  let arg15 : BitVec 32 := Scf.iv c0_i32_255 c1_i32_257 k0_t2
  let v608 : Index := Scalar.indexCast arg15
  let c128 : Index := 128#32
  ![0, v608.toNat, 128]
def k0_off29 (k0_t2 : Fin k0_t2_loop.trips) : Fin 3 → Nat :=
  let c0_i32_652 : BitVec 32 := 0#32
  let v611 : Index := Scalar.indexCast c0_i32_652
  let c0_i32_255 : BitVec 32 := 0#32
  let c1_i32_257 : BitVec 32 := 1#32
  let arg15 : BitVec 32 := Scf.iv c0_i32_255 c1_i32_257 k0_t2
  let v612 : Index := Scalar.indexCast arg15
  let c144 : Index := 144#32
  ![0, v612.toNat, 144]
def k0_off30 (k0_t2 : Fin k0_t2_loop.trips) : Fin 3 → Nat :=
  let c0_i32_653 : BitVec 32 := 0#32
  let v615 : Index := Scalar.indexCast c0_i32_653
  let c0_i32_255 : BitVec 32 := 0#32
  let c1_i32_257 : BitVec 32 := 1#32
  let arg15 : BitVec 32 := Scf.iv c0_i32_255 c1_i32_257 k0_t2
  let v616 : Index := Scalar.indexCast arg15
  let c160 : Index := 160#32
  ![0, v616.toNat, 160]
def k0_off31 (k0_t2 : Fin k0_t2_loop.trips) : Fin 3 → Nat :=
  let c0_i32_654 : BitVec 32 := 0#32
  let v619 : Index := Scalar.indexCast c0_i32_654
  let c0_i32_255 : BitVec 32 := 0#32
  let c1_i32_257 : BitVec 32 := 1#32
  let arg15 : BitVec 32 := Scf.iv c0_i32_255 c1_i32_257 k0_t2
  let v620 : Index := Scalar.indexCast arg15
  let c176 : Index := 176#32
  ![0, v620.toNat, 176]
def k0_off32 (k0_t2 : Fin k0_t2_loop.trips) : Fin 3 → Nat :=
  let c0_i32_655 : BitVec 32 := 0#32
  let v623 : Index := Scalar.indexCast c0_i32_655
  let c0_i32_255 : BitVec 32 := 0#32
  let c1_i32_257 : BitVec 32 := 1#32
  let arg15 : BitVec 32 := Scf.iv c0_i32_255 c1_i32_257 k0_t2
  let v624 : Index := Scalar.indexCast arg15
  let c192 : Index := 192#32
  ![0, v624.toNat, 192]
def k0_off33 (k0_t2 : Fin k0_t2_loop.trips) : Fin 3 → Nat :=
  let c0_i32_656 : BitVec 32 := 0#32
  let v627 : Index := Scalar.indexCast c0_i32_656
  let c0_i32_255 : BitVec 32 := 0#32
  let c1_i32_257 : BitVec 32 := 1#32
  let arg15 : BitVec 32 := Scf.iv c0_i32_255 c1_i32_257 k0_t2
  let v628 : Index := Scalar.indexCast arg15
  let c208 : Index := 208#32
  ![0, v628.toNat, 208]
def k0_off34 (k0_t2 : Fin k0_t2_loop.trips) : Fin 3 → Nat :=
  let c0_i32_657 : BitVec 32 := 0#32
  let v631 : Index := Scalar.indexCast c0_i32_657
  let c0_i32_255 : BitVec 32 := 0#32
  let c1_i32_257 : BitVec 32 := 1#32
  let arg15 : BitVec 32 := Scf.iv c0_i32_255 c1_i32_257 k0_t2
  let v632 : Index := Scalar.indexCast arg15
  let c224 : Index := 224#32
  ![0, v632.toNat, 224]
def k0_off35 (k0_t2 : Fin k0_t2_loop.trips) : Fin 3 → Nat :=
  let c0_i32_658 : BitVec 32 := 0#32
  let v635 : Index := Scalar.indexCast c0_i32_658
  let c0_i32_255 : BitVec 32 := 0#32
  let c1_i32_257 : BitVec 32 := 1#32
  let arg15 : BitVec 32 := Scf.iv c0_i32_255 c1_i32_257 k0_t2
  let v636 : Index := Scalar.indexCast arg15
  let c240 : Index := 240#32
  ![0, v636.toNat, 240]
def k0_off36 (k0_t2 : Fin k0_t2_loop.trips) : Fin 3 → Nat :=
  let c0_i32_659 : BitVec 32 := 0#32
  let v639 : Index := Scalar.indexCast c0_i32_659
  let c0_i32_255 : BitVec 32 := 0#32
  let c1_i32_257 : BitVec 32 := 1#32
  let arg15 : BitVec 32 := Scf.iv c0_i32_255 c1_i32_257 k0_t2
  let v640 : Index := Scalar.indexCast arg15
  let c256 : Index := 256#32
  ![0, v640.toNat, 256]
def k0_off37 (k0_t2 : Fin k0_t2_loop.trips) : Fin 3 → Nat :=
  let c0_i32_660 : BitVec 32 := 0#32
  let v643 : Index := Scalar.indexCast c0_i32_660
  let c0_i32_255 : BitVec 32 := 0#32
  let c1_i32_257 : BitVec 32 := 1#32
  let arg15 : BitVec 32 := Scf.iv c0_i32_255 c1_i32_257 k0_t2
  let v644 : Index := Scalar.indexCast arg15
  let c272 : Index := 272#32
  ![0, v644.toNat, 272]
def k0_off38 (k0_t2 : Fin k0_t2_loop.trips) : Fin 3 → Nat :=
  let c0_i32_661 : BitVec 32 := 0#32
  let v647 : Index := Scalar.indexCast c0_i32_661
  let c0_i32_255 : BitVec 32 := 0#32
  let c1_i32_257 : BitVec 32 := 1#32
  let arg15 : BitVec 32 := Scf.iv c0_i32_255 c1_i32_257 k0_t2
  let v648 : Index := Scalar.indexCast arg15
  let c288 : Index := 288#32
  ![0, v648.toNat, 288]
def k0_off39 (k0_t2 : Fin k0_t2_loop.trips) : Fin 3 → Nat :=
  let c0_i32_662 : BitVec 32 := 0#32
  let v651 : Index := Scalar.indexCast c0_i32_662
  let c0_i32_255 : BitVec 32 := 0#32
  let c1_i32_257 : BitVec 32 := 1#32
  let arg15 : BitVec 32 := Scf.iv c0_i32_255 c1_i32_257 k0_t2
  let v652 : Index := Scalar.indexCast arg15
  let c304 : Index := 304#32
  ![0, v652.toNat, 304]
def k0_off40 (k0_t2 : Fin k0_t2_loop.trips) : Fin 3 → Nat :=
  let c0_i32_663 : BitVec 32 := 0#32
  let v655 : Index := Scalar.indexCast c0_i32_663
  let c0_i32_255 : BitVec 32 := 0#32
  let c1_i32_257 : BitVec 32 := 1#32
  let arg15 : BitVec 32 := Scf.iv c0_i32_255 c1_i32_257 k0_t2
  let v656 : Index := Scalar.indexCast arg15
  let c320 : Index := 320#32
  ![0, v656.toNat, 320]
def k0_off41 (k0_t2 : Fin k0_t2_loop.trips) : Fin 3 → Nat :=
  let c0_i32_664 : BitVec 32 := 0#32
  let v659 : Index := Scalar.indexCast c0_i32_664
  let c0_i32_255 : BitVec 32 := 0#32
  let c1_i32_257 : BitVec 32 := 1#32
  let arg15 : BitVec 32 := Scf.iv c0_i32_255 c1_i32_257 k0_t2
  let v660 : Index := Scalar.indexCast arg15
  let c336 : Index := 336#32
  ![0, v660.toNat, 336]
def k0_off42 (k0_t2 : Fin k0_t2_loop.trips) : Fin 3 → Nat :=
  let c0_i32_665 : BitVec 32 := 0#32
  let v663 : Index := Scalar.indexCast c0_i32_665
  let c0_i32_255 : BitVec 32 := 0#32
  let c1_i32_257 : BitVec 32 := 1#32
  let arg15 : BitVec 32 := Scf.iv c0_i32_255 c1_i32_257 k0_t2
  let v664 : Index := Scalar.indexCast arg15
  let c352 : Index := 352#32
  ![0, v664.toNat, 352]
def k0_off43 (k0_t2 : Fin k0_t2_loop.trips) : Fin 3 → Nat :=
  let c0_i32_666 : BitVec 32 := 0#32
  let v667 : Index := Scalar.indexCast c0_i32_666
  let c0_i32_255 : BitVec 32 := 0#32
  let c1_i32_257 : BitVec 32 := 1#32
  let arg15 : BitVec 32 := Scf.iv c0_i32_255 c1_i32_257 k0_t2
  let v668 : Index := Scalar.indexCast arg15
  let c368 : Index := 368#32
  ![0, v668.toNat, 368]
def k0_off44 (k0_t2 : Fin k0_t2_loop.trips) : Fin 3 → Nat :=
  let c0_i32_667 : BitVec 32 := 0#32
  let v671 : Index := Scalar.indexCast c0_i32_667
  let c0_i32_255 : BitVec 32 := 0#32
  let c1_i32_257 : BitVec 32 := 1#32
  let arg15 : BitVec 32 := Scf.iv c0_i32_255 c1_i32_257 k0_t2
  let v672 : Index := Scalar.indexCast arg15
  let c384 : Index := 384#32
  ![0, v672.toNat, 384]
def k0_off45 (k0_t2 : Fin k0_t2_loop.trips) : Fin 3 → Nat :=
  let c0_i32_668 : BitVec 32 := 0#32
  let v675 : Index := Scalar.indexCast c0_i32_668
  let c0_i32_255 : BitVec 32 := 0#32
  let c1_i32_257 : BitVec 32 := 1#32
  let arg15 : BitVec 32 := Scf.iv c0_i32_255 c1_i32_257 k0_t2
  let v676 : Index := Scalar.indexCast arg15
  let c400 : Index := 400#32
  ![0, v676.toNat, 400]
def k0_off46 (k0_t2 : Fin k0_t2_loop.trips) : Fin 3 → Nat :=
  let c0_i32_669 : BitVec 32 := 0#32
  let v679 : Index := Scalar.indexCast c0_i32_669
  let c0_i32_255 : BitVec 32 := 0#32
  let c1_i32_257 : BitVec 32 := 1#32
  let arg15 : BitVec 32 := Scf.iv c0_i32_255 c1_i32_257 k0_t2
  let v680 : Index := Scalar.indexCast arg15
  let c416 : Index := 416#32
  ![0, v680.toNat, 416]
def k0_off47 (k0_t2 : Fin k0_t2_loop.trips) : Fin 3 → Nat :=
  let c0_i32_670 : BitVec 32 := 0#32
  let v683 : Index := Scalar.indexCast c0_i32_670
  let c0_i32_255 : BitVec 32 := 0#32
  let c1_i32_257 : BitVec 32 := 1#32
  let arg15 : BitVec 32 := Scf.iv c0_i32_255 c1_i32_257 k0_t2
  let v684 : Index := Scalar.indexCast arg15
  let c432 : Index := 432#32
  ![0, v684.toNat, 432]
def k0_off48 (k0_t2 : Fin k0_t2_loop.trips) : Fin 3 → Nat :=
  let c0_i32_671 : BitVec 32 := 0#32
  let v687 : Index := Scalar.indexCast c0_i32_671
  let c0_i32_255 : BitVec 32 := 0#32
  let c1_i32_257 : BitVec 32 := 1#32
  let arg15 : BitVec 32 := Scf.iv c0_i32_255 c1_i32_257 k0_t2
  let v688 : Index := Scalar.indexCast arg15
  let c448 : Index := 448#32
  ![0, v688.toNat, 448]
def k0_off49 (k0_t2 : Fin k0_t2_loop.trips) : Fin 3 → Nat :=
  let c0_i32_672 : BitVec 32 := 0#32
  let v691 : Index := Scalar.indexCast c0_i32_672
  let c0_i32_255 : BitVec 32 := 0#32
  let c1_i32_257 : BitVec 32 := 1#32
  let arg15 : BitVec 32 := Scf.iv c0_i32_255 c1_i32_257 k0_t2
  let v692 : Index := Scalar.indexCast arg15
  let c464 : Index := 464#32
  ![0, v692.toNat, 464]
def k0_off50 (k0_t2 : Fin k0_t2_loop.trips) : Fin 3 → Nat :=
  let c0_i32_673 : BitVec 32 := 0#32
  let v695 : Index := Scalar.indexCast c0_i32_673
  let c0_i32_255 : BitVec 32 := 0#32
  let c1_i32_257 : BitVec 32 := 1#32
  let arg15 : BitVec 32 := Scf.iv c0_i32_255 c1_i32_257 k0_t2
  let v696 : Index := Scalar.indexCast arg15
  let c480 : Index := 480#32
  ![0, v696.toNat, 480]
def k0_off51 (k0_t2 : Fin k0_t2_loop.trips) : Fin 3 → Nat :=
  let c0_i32_674 : BitVec 32 := 0#32
  let v699 : Index := Scalar.indexCast c0_i32_674
  let c0_i32_255 : BitVec 32 := 0#32
  let c1_i32_257 : BitVec 32 := 1#32
  let arg15 : BitVec 32 := Scf.iv c0_i32_255 c1_i32_257 k0_t2
  let v700 : Index := Scalar.indexCast arg15
  let c496 : Index := 496#32
  ![0, v700.toNat, 496]
def k0_off52 (k0_t2 : Fin k0_t2_loop.trips) : Fin 4 → Nat :=
  let c0_i32_675 : BitVec 32 := 0#32
  let v703 : Index := Scalar.indexCast c0_i32_675
  let c0_i32_676 : BitVec 32 := 0#32
  let v704 : Index := Scalar.indexCast c0_i32_676
  let c0_i32_255 : BitVec 32 := 0#32
  let c1_i32_257 : BitVec 32 := 1#32
  let arg15 : BitVec 32 := Scf.iv c0_i32_255 c1_i32_257 k0_t2
  let v705 : Index := Scalar.indexCast arg15
  let c0_677 : Index := 0#32
  ![0, 0, v705.toNat, 0]
def k0_off53 (k0_t2 : Fin k0_t2_loop.trips) : Fin 4 → Nat :=
  let c0_i32_678 : BitVec 32 := 0#32
  let v709 : Index := Scalar.indexCast c0_i32_678
  let c0_i32_679 : BitVec 32 := 0#32
  let v710 : Index := Scalar.indexCast c0_i32_679
  let c0_i32_255 : BitVec 32 := 0#32
  let c1_i32_257 : BitVec 32 := 1#32
  let arg15 : BitVec 32 := Scf.iv c0_i32_255 c1_i32_257 k0_t2
  let v711 : Index := Scalar.indexCast arg15
  let c0_680 : Index := 0#32
  ![0, 0, v711.toNat, 0]
def k0_off54 (k0_t2 : Fin k0_t2_loop.trips) : Fin 4 → Nat :=
  let c0_i32_681 : BitVec 32 := 0#32
  let v715 : Index := Scalar.indexCast c0_i32_681
  let c0_i32_682 : BitVec 32 := 0#32
  let v716 : Index := Scalar.indexCast c0_i32_682
  let c0_i32_255 : BitVec 32 := 0#32
  let c1_i32_257 : BitVec 32 := 1#32
  let arg15 : BitVec 32 := Scf.iv c0_i32_255 c1_i32_257 k0_t2
  let v717 : Index := Scalar.indexCast arg15
  let c16_683 : Index := 16#32
  ![0, 0, v717.toNat, 16]
def k0_off55 (k0_t2 : Fin k0_t2_loop.trips) : Fin 4 → Nat :=
  let c0_i32_684 : BitVec 32 := 0#32
  let v721 : Index := Scalar.indexCast c0_i32_684
  let c0_i32_685 : BitVec 32 := 0#32
  let v722 : Index := Scalar.indexCast c0_i32_685
  let c0_i32_255 : BitVec 32 := 0#32
  let c1_i32_257 : BitVec 32 := 1#32
  let arg15 : BitVec 32 := Scf.iv c0_i32_255 c1_i32_257 k0_t2
  let v723 : Index := Scalar.indexCast arg15
  let c16_686 : Index := 16#32
  ![0, 0, v723.toNat, 16]
def k0_off56 (k0_t2 : Fin k0_t2_loop.trips) : Fin 4 → Nat :=
  let c0_i32_687 : BitVec 32 := 0#32
  let v727 : Index := Scalar.indexCast c0_i32_687
  let c0_i32_688 : BitVec 32 := 0#32
  let v728 : Index := Scalar.indexCast c0_i32_688
  let c0_i32_255 : BitVec 32 := 0#32
  let c1_i32_257 : BitVec 32 := 1#32
  let arg15 : BitVec 32 := Scf.iv c0_i32_255 c1_i32_257 k0_t2
  let v729 : Index := Scalar.indexCast arg15
  let c32_689 : Index := 32#32
  ![0, 0, v729.toNat, 32]
def k0_off57 (k0_t2 : Fin k0_t2_loop.trips) : Fin 4 → Nat :=
  let c0_i32_690 : BitVec 32 := 0#32
  let v733 : Index := Scalar.indexCast c0_i32_690
  let c0_i32_691 : BitVec 32 := 0#32
  let v734 : Index := Scalar.indexCast c0_i32_691
  let c0_i32_255 : BitVec 32 := 0#32
  let c1_i32_257 : BitVec 32 := 1#32
  let arg15 : BitVec 32 := Scf.iv c0_i32_255 c1_i32_257 k0_t2
  let v735 : Index := Scalar.indexCast arg15
  let c32_692 : Index := 32#32
  ![0, 0, v735.toNat, 32]
def k0_off58 (k0_t2 : Fin k0_t2_loop.trips) : Fin 4 → Nat :=
  let c0_i32_693 : BitVec 32 := 0#32
  let v739 : Index := Scalar.indexCast c0_i32_693
  let c0_i32_694 : BitVec 32 := 0#32
  let v740 : Index := Scalar.indexCast c0_i32_694
  let c0_i32_255 : BitVec 32 := 0#32
  let c1_i32_257 : BitVec 32 := 1#32
  let arg15 : BitVec 32 := Scf.iv c0_i32_255 c1_i32_257 k0_t2
  let v741 : Index := Scalar.indexCast arg15
  let c48_695 : Index := 48#32
  ![0, 0, v741.toNat, 48]
def k0_off59 (k0_t2 : Fin k0_t2_loop.trips) : Fin 4 → Nat :=
  let c0_i32_696 : BitVec 32 := 0#32
  let v745 : Index := Scalar.indexCast c0_i32_696
  let c0_i32_697 : BitVec 32 := 0#32
  let v746 : Index := Scalar.indexCast c0_i32_697
  let c0_i32_255 : BitVec 32 := 0#32
  let c1_i32_257 : BitVec 32 := 1#32
  let arg15 : BitVec 32 := Scf.iv c0_i32_255 c1_i32_257 k0_t2
  let v747 : Index := Scalar.indexCast arg15
  let c48_698 : Index := 48#32
  ![0, 0, v747.toNat, 48]
def k0_off60 (k0_t2 : Fin k0_t2_loop.trips) : Fin 4 → Nat :=
  let c0_i32_699 : BitVec 32 := 0#32
  let v751 : Index := Scalar.indexCast c0_i32_699
  let c0_i32_700 : BitVec 32 := 0#32
  let v752 : Index := Scalar.indexCast c0_i32_700
  let c0_i32_255 : BitVec 32 := 0#32
  let c1_i32_257 : BitVec 32 := 1#32
  let arg15 : BitVec 32 := Scf.iv c0_i32_255 c1_i32_257 k0_t2
  let v753 : Index := Scalar.indexCast arg15
  let c64_701 : Index := 64#32
  ![0, 0, v753.toNat, 64]
def k0_off61 (k0_t2 : Fin k0_t2_loop.trips) : Fin 4 → Nat :=
  let c0_i32_702 : BitVec 32 := 0#32
  let v757 : Index := Scalar.indexCast c0_i32_702
  let c0_i32_703 : BitVec 32 := 0#32
  let v758 : Index := Scalar.indexCast c0_i32_703
  let c0_i32_255 : BitVec 32 := 0#32
  let c1_i32_257 : BitVec 32 := 1#32
  let arg15 : BitVec 32 := Scf.iv c0_i32_255 c1_i32_257 k0_t2
  let v759 : Index := Scalar.indexCast arg15
  let c64_704 : Index := 64#32
  ![0, 0, v759.toNat, 64]
def k0_off62 (k0_t2 : Fin k0_t2_loop.trips) : Fin 4 → Nat :=
  let c0_i32_705 : BitVec 32 := 0#32
  let v763 : Index := Scalar.indexCast c0_i32_705
  let c0_i32_706 : BitVec 32 := 0#32
  let v764 : Index := Scalar.indexCast c0_i32_706
  let c0_i32_255 : BitVec 32 := 0#32
  let c1_i32_257 : BitVec 32 := 1#32
  let arg15 : BitVec 32 := Scf.iv c0_i32_255 c1_i32_257 k0_t2
  let v765 : Index := Scalar.indexCast arg15
  let c80_707 : Index := 80#32
  ![0, 0, v765.toNat, 80]
def k0_off63 (k0_t2 : Fin k0_t2_loop.trips) : Fin 4 → Nat :=
  let c0_i32_708 : BitVec 32 := 0#32
  let v769 : Index := Scalar.indexCast c0_i32_708
  let c0_i32_709 : BitVec 32 := 0#32
  let v770 : Index := Scalar.indexCast c0_i32_709
  let c0_i32_255 : BitVec 32 := 0#32
  let c1_i32_257 : BitVec 32 := 1#32
  let arg15 : BitVec 32 := Scf.iv c0_i32_255 c1_i32_257 k0_t2
  let v771 : Index := Scalar.indexCast arg15
  let c80_710 : Index := 80#32
  ![0, 0, v771.toNat, 80]
def k0_off64 (k0_t2 : Fin k0_t2_loop.trips) : Fin 4 → Nat :=
  let c0_i32_711 : BitVec 32 := 0#32
  let v775 : Index := Scalar.indexCast c0_i32_711
  let c0_i32_712 : BitVec 32 := 0#32
  let v776 : Index := Scalar.indexCast c0_i32_712
  let c0_i32_255 : BitVec 32 := 0#32
  let c1_i32_257 : BitVec 32 := 1#32
  let arg15 : BitVec 32 := Scf.iv c0_i32_255 c1_i32_257 k0_t2
  let v777 : Index := Scalar.indexCast arg15
  let c96_713 : Index := 96#32
  ![0, 0, v777.toNat, 96]
def k0_off65 (k0_t2 : Fin k0_t2_loop.trips) : Fin 4 → Nat :=
  let c0_i32_714 : BitVec 32 := 0#32
  let v781 : Index := Scalar.indexCast c0_i32_714
  let c0_i32_715 : BitVec 32 := 0#32
  let v782 : Index := Scalar.indexCast c0_i32_715
  let c0_i32_255 : BitVec 32 := 0#32
  let c1_i32_257 : BitVec 32 := 1#32
  let arg15 : BitVec 32 := Scf.iv c0_i32_255 c1_i32_257 k0_t2
  let v783 : Index := Scalar.indexCast arg15
  let c96_716 : Index := 96#32
  ![0, 0, v783.toNat, 96]
def k0_off66 (k0_t2 : Fin k0_t2_loop.trips) : Fin 4 → Nat :=
  let c0_i32_717 : BitVec 32 := 0#32
  let v787 : Index := Scalar.indexCast c0_i32_717
  let c0_i32_718 : BitVec 32 := 0#32
  let v788 : Index := Scalar.indexCast c0_i32_718
  let c0_i32_255 : BitVec 32 := 0#32
  let c1_i32_257 : BitVec 32 := 1#32
  let arg15 : BitVec 32 := Scf.iv c0_i32_255 c1_i32_257 k0_t2
  let v789 : Index := Scalar.indexCast arg15
  let c112_719 : Index := 112#32
  ![0, 0, v789.toNat, 112]
def k0_off67 (k0_t2 : Fin k0_t2_loop.trips) : Fin 4 → Nat :=
  let c0_i32_720 : BitVec 32 := 0#32
  let v793 : Index := Scalar.indexCast c0_i32_720
  let c0_i32_721 : BitVec 32 := 0#32
  let v794 : Index := Scalar.indexCast c0_i32_721
  let c0_i32_255 : BitVec 32 := 0#32
  let c1_i32_257 : BitVec 32 := 1#32
  let arg15 : BitVec 32 := Scf.iv c0_i32_255 c1_i32_257 k0_t2
  let v795 : Index := Scalar.indexCast arg15
  let c112_722 : Index := 112#32
  ![0, 0, v795.toNat, 112]
def k0_off68 (k0_t2 : Fin k0_t2_loop.trips) : Fin 4 → Nat :=
  let c0_i32_723 : BitVec 32 := 0#32
  let v799 : Index := Scalar.indexCast c0_i32_723
  let c0_i32_724 : BitVec 32 := 0#32
  let v800 : Index := Scalar.indexCast c0_i32_724
  let c0_i32_255 : BitVec 32 := 0#32
  let c1_i32_257 : BitVec 32 := 1#32
  let arg15 : BitVec 32 := Scf.iv c0_i32_255 c1_i32_257 k0_t2
  let v801 : Index := Scalar.indexCast arg15
  let c128_725 : Index := 128#32
  ![0, 0, v801.toNat, 128]
def k0_off69 (k0_t2 : Fin k0_t2_loop.trips) : Fin 4 → Nat :=
  let c0_i32_726 : BitVec 32 := 0#32
  let v805 : Index := Scalar.indexCast c0_i32_726
  let c0_i32_727 : BitVec 32 := 0#32
  let v806 : Index := Scalar.indexCast c0_i32_727
  let c0_i32_255 : BitVec 32 := 0#32
  let c1_i32_257 : BitVec 32 := 1#32
  let arg15 : BitVec 32 := Scf.iv c0_i32_255 c1_i32_257 k0_t2
  let v807 : Index := Scalar.indexCast arg15
  let c128_728 : Index := 128#32
  ![0, 0, v807.toNat, 128]
def k0_off70 (k0_t2 : Fin k0_t2_loop.trips) : Fin 4 → Nat :=
  let c0_i32_729 : BitVec 32 := 0#32
  let v811 : Index := Scalar.indexCast c0_i32_729
  let c0_i32_730 : BitVec 32 := 0#32
  let v812 : Index := Scalar.indexCast c0_i32_730
  let c0_i32_255 : BitVec 32 := 0#32
  let c1_i32_257 : BitVec 32 := 1#32
  let arg15 : BitVec 32 := Scf.iv c0_i32_255 c1_i32_257 k0_t2
  let v813 : Index := Scalar.indexCast arg15
  let c144_731 : Index := 144#32
  ![0, 0, v813.toNat, 144]
def k0_off71 (k0_t2 : Fin k0_t2_loop.trips) : Fin 4 → Nat :=
  let c0_i32_732 : BitVec 32 := 0#32
  let v817 : Index := Scalar.indexCast c0_i32_732
  let c0_i32_733 : BitVec 32 := 0#32
  let v818 : Index := Scalar.indexCast c0_i32_733
  let c0_i32_255 : BitVec 32 := 0#32
  let c1_i32_257 : BitVec 32 := 1#32
  let arg15 : BitVec 32 := Scf.iv c0_i32_255 c1_i32_257 k0_t2
  let v819 : Index := Scalar.indexCast arg15
  let c144_734 : Index := 144#32
  ![0, 0, v819.toNat, 144]
def k0_off72 (k0_t2 : Fin k0_t2_loop.trips) : Fin 4 → Nat :=
  let c0_i32_735 : BitVec 32 := 0#32
  let v823 : Index := Scalar.indexCast c0_i32_735
  let c0_i32_736 : BitVec 32 := 0#32
  let v824 : Index := Scalar.indexCast c0_i32_736
  let c0_i32_255 : BitVec 32 := 0#32
  let c1_i32_257 : BitVec 32 := 1#32
  let arg15 : BitVec 32 := Scf.iv c0_i32_255 c1_i32_257 k0_t2
  let v825 : Index := Scalar.indexCast arg15
  let c160_737 : Index := 160#32
  ![0, 0, v825.toNat, 160]
def k0_off73 (k0_t2 : Fin k0_t2_loop.trips) : Fin 4 → Nat :=
  let c0_i32_738 : BitVec 32 := 0#32
  let v829 : Index := Scalar.indexCast c0_i32_738
  let c0_i32_739 : BitVec 32 := 0#32
  let v830 : Index := Scalar.indexCast c0_i32_739
  let c0_i32_255 : BitVec 32 := 0#32
  let c1_i32_257 : BitVec 32 := 1#32
  let arg15 : BitVec 32 := Scf.iv c0_i32_255 c1_i32_257 k0_t2
  let v831 : Index := Scalar.indexCast arg15
  let c160_740 : Index := 160#32
  ![0, 0, v831.toNat, 160]
def k0_off74 (k0_t2 : Fin k0_t2_loop.trips) : Fin 4 → Nat :=
  let c0_i32_741 : BitVec 32 := 0#32
  let v835 : Index := Scalar.indexCast c0_i32_741
  let c0_i32_742 : BitVec 32 := 0#32
  let v836 : Index := Scalar.indexCast c0_i32_742
  let c0_i32_255 : BitVec 32 := 0#32
  let c1_i32_257 : BitVec 32 := 1#32
  let arg15 : BitVec 32 := Scf.iv c0_i32_255 c1_i32_257 k0_t2
  let v837 : Index := Scalar.indexCast arg15
  let c176_743 : Index := 176#32
  ![0, 0, v837.toNat, 176]
def k0_off75 (k0_t2 : Fin k0_t2_loop.trips) : Fin 4 → Nat :=
  let c0_i32_744 : BitVec 32 := 0#32
  let v841 : Index := Scalar.indexCast c0_i32_744
  let c0_i32_745 : BitVec 32 := 0#32
  let v842 : Index := Scalar.indexCast c0_i32_745
  let c0_i32_255 : BitVec 32 := 0#32
  let c1_i32_257 : BitVec 32 := 1#32
  let arg15 : BitVec 32 := Scf.iv c0_i32_255 c1_i32_257 k0_t2
  let v843 : Index := Scalar.indexCast arg15
  let c176_746 : Index := 176#32
  ![0, 0, v843.toNat, 176]
def k0_off76 (k0_t2 : Fin k0_t2_loop.trips) : Fin 4 → Nat :=
  let c0_i32_747 : BitVec 32 := 0#32
  let v847 : Index := Scalar.indexCast c0_i32_747
  let c0_i32_748 : BitVec 32 := 0#32
  let v848 : Index := Scalar.indexCast c0_i32_748
  let c0_i32_255 : BitVec 32 := 0#32
  let c1_i32_257 : BitVec 32 := 1#32
  let arg15 : BitVec 32 := Scf.iv c0_i32_255 c1_i32_257 k0_t2
  let v849 : Index := Scalar.indexCast arg15
  let c192_749 : Index := 192#32
  ![0, 0, v849.toNat, 192]
def k0_off77 (k0_t2 : Fin k0_t2_loop.trips) : Fin 4 → Nat :=
  let c0_i32_750 : BitVec 32 := 0#32
  let v853 : Index := Scalar.indexCast c0_i32_750
  let c0_i32_751 : BitVec 32 := 0#32
  let v854 : Index := Scalar.indexCast c0_i32_751
  let c0_i32_255 : BitVec 32 := 0#32
  let c1_i32_257 : BitVec 32 := 1#32
  let arg15 : BitVec 32 := Scf.iv c0_i32_255 c1_i32_257 k0_t2
  let v855 : Index := Scalar.indexCast arg15
  let c192_752 : Index := 192#32
  ![0, 0, v855.toNat, 192]
def k0_off78 (k0_t2 : Fin k0_t2_loop.trips) : Fin 4 → Nat :=
  let c0_i32_753 : BitVec 32 := 0#32
  let v859 : Index := Scalar.indexCast c0_i32_753
  let c0_i32_754 : BitVec 32 := 0#32
  let v860 : Index := Scalar.indexCast c0_i32_754
  let c0_i32_255 : BitVec 32 := 0#32
  let c1_i32_257 : BitVec 32 := 1#32
  let arg15 : BitVec 32 := Scf.iv c0_i32_255 c1_i32_257 k0_t2
  let v861 : Index := Scalar.indexCast arg15
  let c208_755 : Index := 208#32
  ![0, 0, v861.toNat, 208]
def k0_off79 (k0_t2 : Fin k0_t2_loop.trips) : Fin 4 → Nat :=
  let c0_i32_756 : BitVec 32 := 0#32
  let v865 : Index := Scalar.indexCast c0_i32_756
  let c0_i32_757 : BitVec 32 := 0#32
  let v866 : Index := Scalar.indexCast c0_i32_757
  let c0_i32_255 : BitVec 32 := 0#32
  let c1_i32_257 : BitVec 32 := 1#32
  let arg15 : BitVec 32 := Scf.iv c0_i32_255 c1_i32_257 k0_t2
  let v867 : Index := Scalar.indexCast arg15
  let c208_758 : Index := 208#32
  ![0, 0, v867.toNat, 208]
def k0_off80 (k0_t2 : Fin k0_t2_loop.trips) : Fin 4 → Nat :=
  let c0_i32_759 : BitVec 32 := 0#32
  let v871 : Index := Scalar.indexCast c0_i32_759
  let c0_i32_760 : BitVec 32 := 0#32
  let v872 : Index := Scalar.indexCast c0_i32_760
  let c0_i32_255 : BitVec 32 := 0#32
  let c1_i32_257 : BitVec 32 := 1#32
  let arg15 : BitVec 32 := Scf.iv c0_i32_255 c1_i32_257 k0_t2
  let v873 : Index := Scalar.indexCast arg15
  let c224_761 : Index := 224#32
  ![0, 0, v873.toNat, 224]
def k0_off81 (k0_t2 : Fin k0_t2_loop.trips) : Fin 4 → Nat :=
  let c0_i32_762 : BitVec 32 := 0#32
  let v877 : Index := Scalar.indexCast c0_i32_762
  let c0_i32_763 : BitVec 32 := 0#32
  let v878 : Index := Scalar.indexCast c0_i32_763
  let c0_i32_255 : BitVec 32 := 0#32
  let c1_i32_257 : BitVec 32 := 1#32
  let arg15 : BitVec 32 := Scf.iv c0_i32_255 c1_i32_257 k0_t2
  let v879 : Index := Scalar.indexCast arg15
  let c224_764 : Index := 224#32
  ![0, 0, v879.toNat, 224]
def k0_off82 (k0_t2 : Fin k0_t2_loop.trips) : Fin 4 → Nat :=
  let c0_i32_765 : BitVec 32 := 0#32
  let v883 : Index := Scalar.indexCast c0_i32_765
  let c0_i32_766 : BitVec 32 := 0#32
  let v884 : Index := Scalar.indexCast c0_i32_766
  let c0_i32_255 : BitVec 32 := 0#32
  let c1_i32_257 : BitVec 32 := 1#32
  let arg15 : BitVec 32 := Scf.iv c0_i32_255 c1_i32_257 k0_t2
  let v885 : Index := Scalar.indexCast arg15
  let c240_767 : Index := 240#32
  ![0, 0, v885.toNat, 240]
def k0_off83 (k0_t2 : Fin k0_t2_loop.trips) : Fin 4 → Nat :=
  let c0_i32_768 : BitVec 32 := 0#32
  let v889 : Index := Scalar.indexCast c0_i32_768
  let c0_i32_769 : BitVec 32 := 0#32
  let v890 : Index := Scalar.indexCast c0_i32_769
  let c0_i32_255 : BitVec 32 := 0#32
  let c1_i32_257 : BitVec 32 := 1#32
  let arg15 : BitVec 32 := Scf.iv c0_i32_255 c1_i32_257 k0_t2
  let v891 : Index := Scalar.indexCast arg15
  let c240_770 : Index := 240#32
  ![0, 0, v891.toNat, 240]
def k0_off84 (k0_t2 : Fin k0_t2_loop.trips) : Fin 4 → Nat :=
  let c0_i32_771 : BitVec 32 := 0#32
  let v895 : Index := Scalar.indexCast c0_i32_771
  let c0_i32_772 : BitVec 32 := 0#32
  let v896 : Index := Scalar.indexCast c0_i32_772
  let c0_i32_255 : BitVec 32 := 0#32
  let c1_i32_257 : BitVec 32 := 1#32
  let arg15 : BitVec 32 := Scf.iv c0_i32_255 c1_i32_257 k0_t2
  let v897 : Index := Scalar.indexCast arg15
  let c256_773 : Index := 256#32
  ![0, 0, v897.toNat, 256]
def k0_off85 (k0_t2 : Fin k0_t2_loop.trips) : Fin 4 → Nat :=
  let c0_i32_774 : BitVec 32 := 0#32
  let v901 : Index := Scalar.indexCast c0_i32_774
  let c0_i32_775 : BitVec 32 := 0#32
  let v902 : Index := Scalar.indexCast c0_i32_775
  let c0_i32_255 : BitVec 32 := 0#32
  let c1_i32_257 : BitVec 32 := 1#32
  let arg15 : BitVec 32 := Scf.iv c0_i32_255 c1_i32_257 k0_t2
  let v903 : Index := Scalar.indexCast arg15
  let c256_776 : Index := 256#32
  ![0, 0, v903.toNat, 256]
def k0_off86 (k0_t2 : Fin k0_t2_loop.trips) : Fin 4 → Nat :=
  let c0_i32_777 : BitVec 32 := 0#32
  let v907 : Index := Scalar.indexCast c0_i32_777
  let c0_i32_778 : BitVec 32 := 0#32
  let v908 : Index := Scalar.indexCast c0_i32_778
  let c0_i32_255 : BitVec 32 := 0#32
  let c1_i32_257 : BitVec 32 := 1#32
  let arg15 : BitVec 32 := Scf.iv c0_i32_255 c1_i32_257 k0_t2
  let v909 : Index := Scalar.indexCast arg15
  let c272_779 : Index := 272#32
  ![0, 0, v909.toNat, 272]
def k0_off87 (k0_t2 : Fin k0_t2_loop.trips) : Fin 4 → Nat :=
  let c0_i32_780 : BitVec 32 := 0#32
  let v913 : Index := Scalar.indexCast c0_i32_780
  let c0_i32_781 : BitVec 32 := 0#32
  let v914 : Index := Scalar.indexCast c0_i32_781
  let c0_i32_255 : BitVec 32 := 0#32
  let c1_i32_257 : BitVec 32 := 1#32
  let arg15 : BitVec 32 := Scf.iv c0_i32_255 c1_i32_257 k0_t2
  let v915 : Index := Scalar.indexCast arg15
  let c272_782 : Index := 272#32
  ![0, 0, v915.toNat, 272]
def k0_off88 (k0_t2 : Fin k0_t2_loop.trips) : Fin 4 → Nat :=
  let c0_i32_783 : BitVec 32 := 0#32
  let v919 : Index := Scalar.indexCast c0_i32_783
  let c0_i32_784 : BitVec 32 := 0#32
  let v920 : Index := Scalar.indexCast c0_i32_784
  let c0_i32_255 : BitVec 32 := 0#32
  let c1_i32_257 : BitVec 32 := 1#32
  let arg15 : BitVec 32 := Scf.iv c0_i32_255 c1_i32_257 k0_t2
  let v921 : Index := Scalar.indexCast arg15
  let c288_785 : Index := 288#32
  ![0, 0, v921.toNat, 288]
def k0_off89 (k0_t2 : Fin k0_t2_loop.trips) : Fin 4 → Nat :=
  let c0_i32_786 : BitVec 32 := 0#32
  let v925 : Index := Scalar.indexCast c0_i32_786
  let c0_i32_787 : BitVec 32 := 0#32
  let v926 : Index := Scalar.indexCast c0_i32_787
  let c0_i32_255 : BitVec 32 := 0#32
  let c1_i32_257 : BitVec 32 := 1#32
  let arg15 : BitVec 32 := Scf.iv c0_i32_255 c1_i32_257 k0_t2
  let v927 : Index := Scalar.indexCast arg15
  let c288_788 : Index := 288#32
  ![0, 0, v927.toNat, 288]
def k0_off90 (k0_t2 : Fin k0_t2_loop.trips) : Fin 4 → Nat :=
  let c0_i32_789 : BitVec 32 := 0#32
  let v931 : Index := Scalar.indexCast c0_i32_789
  let c0_i32_790 : BitVec 32 := 0#32
  let v932 : Index := Scalar.indexCast c0_i32_790
  let c0_i32_255 : BitVec 32 := 0#32
  let c1_i32_257 : BitVec 32 := 1#32
  let arg15 : BitVec 32 := Scf.iv c0_i32_255 c1_i32_257 k0_t2
  let v933 : Index := Scalar.indexCast arg15
  let c304_791 : Index := 304#32
  ![0, 0, v933.toNat, 304]
def k0_off91 (k0_t2 : Fin k0_t2_loop.trips) : Fin 4 → Nat :=
  let c0_i32_792 : BitVec 32 := 0#32
  let v937 : Index := Scalar.indexCast c0_i32_792
  let c0_i32_793 : BitVec 32 := 0#32
  let v938 : Index := Scalar.indexCast c0_i32_793
  let c0_i32_255 : BitVec 32 := 0#32
  let c1_i32_257 : BitVec 32 := 1#32
  let arg15 : BitVec 32 := Scf.iv c0_i32_255 c1_i32_257 k0_t2
  let v939 : Index := Scalar.indexCast arg15
  let c304_794 : Index := 304#32
  ![0, 0, v939.toNat, 304]
def k0_off92 (k0_t2 : Fin k0_t2_loop.trips) : Fin 4 → Nat :=
  let c0_i32_795 : BitVec 32 := 0#32
  let v943 : Index := Scalar.indexCast c0_i32_795
  let c0_i32_796 : BitVec 32 := 0#32
  let v944 : Index := Scalar.indexCast c0_i32_796
  let c0_i32_255 : BitVec 32 := 0#32
  let c1_i32_257 : BitVec 32 := 1#32
  let arg15 : BitVec 32 := Scf.iv c0_i32_255 c1_i32_257 k0_t2
  let v945 : Index := Scalar.indexCast arg15
  let c320_797 : Index := 320#32
  ![0, 0, v945.toNat, 320]
def k0_off93 (k0_t2 : Fin k0_t2_loop.trips) : Fin 4 → Nat :=
  let c0_i32_798 : BitVec 32 := 0#32
  let v949 : Index := Scalar.indexCast c0_i32_798
  let c0_i32_799 : BitVec 32 := 0#32
  let v950 : Index := Scalar.indexCast c0_i32_799
  let c0_i32_255 : BitVec 32 := 0#32
  let c1_i32_257 : BitVec 32 := 1#32
  let arg15 : BitVec 32 := Scf.iv c0_i32_255 c1_i32_257 k0_t2
  let v951 : Index := Scalar.indexCast arg15
  let c320_800 : Index := 320#32
  ![0, 0, v951.toNat, 320]
def k0_off94 (k0_t2 : Fin k0_t2_loop.trips) : Fin 4 → Nat :=
  let c0_i32_801 : BitVec 32 := 0#32
  let v955 : Index := Scalar.indexCast c0_i32_801
  let c0_i32_802 : BitVec 32 := 0#32
  let v956 : Index := Scalar.indexCast c0_i32_802
  let c0_i32_255 : BitVec 32 := 0#32
  let c1_i32_257 : BitVec 32 := 1#32
  let arg15 : BitVec 32 := Scf.iv c0_i32_255 c1_i32_257 k0_t2
  let v957 : Index := Scalar.indexCast arg15
  let c336_803 : Index := 336#32
  ![0, 0, v957.toNat, 336]
def k0_off95 (k0_t2 : Fin k0_t2_loop.trips) : Fin 4 → Nat :=
  let c0_i32_804 : BitVec 32 := 0#32
  let v961 : Index := Scalar.indexCast c0_i32_804
  let c0_i32_805 : BitVec 32 := 0#32
  let v962 : Index := Scalar.indexCast c0_i32_805
  let c0_i32_255 : BitVec 32 := 0#32
  let c1_i32_257 : BitVec 32 := 1#32
  let arg15 : BitVec 32 := Scf.iv c0_i32_255 c1_i32_257 k0_t2
  let v963 : Index := Scalar.indexCast arg15
  let c336_806 : Index := 336#32
  ![0, 0, v963.toNat, 336]
def k0_off96 (k0_t2 : Fin k0_t2_loop.trips) : Fin 4 → Nat :=
  let c0_i32_807 : BitVec 32 := 0#32
  let v967 : Index := Scalar.indexCast c0_i32_807
  let c0_i32_808 : BitVec 32 := 0#32
  let v968 : Index := Scalar.indexCast c0_i32_808
  let c0_i32_255 : BitVec 32 := 0#32
  let c1_i32_257 : BitVec 32 := 1#32
  let arg15 : BitVec 32 := Scf.iv c0_i32_255 c1_i32_257 k0_t2
  let v969 : Index := Scalar.indexCast arg15
  let c352_809 : Index := 352#32
  ![0, 0, v969.toNat, 352]
def k0_off97 (k0_t2 : Fin k0_t2_loop.trips) : Fin 4 → Nat :=
  let c0_i32_810 : BitVec 32 := 0#32
  let v973 : Index := Scalar.indexCast c0_i32_810
  let c0_i32_811 : BitVec 32 := 0#32
  let v974 : Index := Scalar.indexCast c0_i32_811
  let c0_i32_255 : BitVec 32 := 0#32
  let c1_i32_257 : BitVec 32 := 1#32
  let arg15 : BitVec 32 := Scf.iv c0_i32_255 c1_i32_257 k0_t2
  let v975 : Index := Scalar.indexCast arg15
  let c352_812 : Index := 352#32
  ![0, 0, v975.toNat, 352]
def k0_off98 (k0_t2 : Fin k0_t2_loop.trips) : Fin 4 → Nat :=
  let c0_i32_813 : BitVec 32 := 0#32
  let v979 : Index := Scalar.indexCast c0_i32_813
  let c0_i32_814 : BitVec 32 := 0#32
  let v980 : Index := Scalar.indexCast c0_i32_814
  let c0_i32_255 : BitVec 32 := 0#32
  let c1_i32_257 : BitVec 32 := 1#32
  let arg15 : BitVec 32 := Scf.iv c0_i32_255 c1_i32_257 k0_t2
  let v981 : Index := Scalar.indexCast arg15
  let c368_815 : Index := 368#32
  ![0, 0, v981.toNat, 368]
def k0_off99 (k0_t2 : Fin k0_t2_loop.trips) : Fin 4 → Nat :=
  let c0_i32_816 : BitVec 32 := 0#32
  let v985 : Index := Scalar.indexCast c0_i32_816
  let c0_i32_817 : BitVec 32 := 0#32
  let v986 : Index := Scalar.indexCast c0_i32_817
  let c0_i32_255 : BitVec 32 := 0#32
  let c1_i32_257 : BitVec 32 := 1#32
  let arg15 : BitVec 32 := Scf.iv c0_i32_255 c1_i32_257 k0_t2
  let v987 : Index := Scalar.indexCast arg15
  let c368_818 : Index := 368#32
  ![0, 0, v987.toNat, 368]
def k0_off100 (k0_t2 : Fin k0_t2_loop.trips) : Fin 4 → Nat :=
  let c0_i32_819 : BitVec 32 := 0#32
  let v991 : Index := Scalar.indexCast c0_i32_819
  let c0_i32_820 : BitVec 32 := 0#32
  let v992 : Index := Scalar.indexCast c0_i32_820
  let c0_i32_255 : BitVec 32 := 0#32
  let c1_i32_257 : BitVec 32 := 1#32
  let arg15 : BitVec 32 := Scf.iv c0_i32_255 c1_i32_257 k0_t2
  let v993 : Index := Scalar.indexCast arg15
  let c384_821 : Index := 384#32
  ![0, 0, v993.toNat, 384]
def k0_off101 (k0_t2 : Fin k0_t2_loop.trips) : Fin 4 → Nat :=
  let c0_i32_822 : BitVec 32 := 0#32
  let v997 : Index := Scalar.indexCast c0_i32_822
  let c0_i32_823 : BitVec 32 := 0#32
  let v998 : Index := Scalar.indexCast c0_i32_823
  let c0_i32_255 : BitVec 32 := 0#32
  let c1_i32_257 : BitVec 32 := 1#32
  let arg15 : BitVec 32 := Scf.iv c0_i32_255 c1_i32_257 k0_t2
  let v999 : Index := Scalar.indexCast arg15
  let c384_824 : Index := 384#32
  ![0, 0, v999.toNat, 384]
def k0_off102 (k0_t2 : Fin k0_t2_loop.trips) : Fin 4 → Nat :=
  let c0_i32_825 : BitVec 32 := 0#32
  let v1003 : Index := Scalar.indexCast c0_i32_825
  let c0_i32_826 : BitVec 32 := 0#32
  let v1004 : Index := Scalar.indexCast c0_i32_826
  let c0_i32_255 : BitVec 32 := 0#32
  let c1_i32_257 : BitVec 32 := 1#32
  let arg15 : BitVec 32 := Scf.iv c0_i32_255 c1_i32_257 k0_t2
  let v1005 : Index := Scalar.indexCast arg15
  let c400_827 : Index := 400#32
  ![0, 0, v1005.toNat, 400]
def k0_off103 (k0_t2 : Fin k0_t2_loop.trips) : Fin 4 → Nat :=
  let c0_i32_828 : BitVec 32 := 0#32
  let v1009 : Index := Scalar.indexCast c0_i32_828
  let c0_i32_829 : BitVec 32 := 0#32
  let v1010 : Index := Scalar.indexCast c0_i32_829
  let c0_i32_255 : BitVec 32 := 0#32
  let c1_i32_257 : BitVec 32 := 1#32
  let arg15 : BitVec 32 := Scf.iv c0_i32_255 c1_i32_257 k0_t2
  let v1011 : Index := Scalar.indexCast arg15
  let c400_830 : Index := 400#32
  ![0, 0, v1011.toNat, 400]
def k0_off104 (k0_t2 : Fin k0_t2_loop.trips) : Fin 4 → Nat :=
  let c0_i32_831 : BitVec 32 := 0#32
  let v1015 : Index := Scalar.indexCast c0_i32_831
  let c0_i32_832 : BitVec 32 := 0#32
  let v1016 : Index := Scalar.indexCast c0_i32_832
  let c0_i32_255 : BitVec 32 := 0#32
  let c1_i32_257 : BitVec 32 := 1#32
  let arg15 : BitVec 32 := Scf.iv c0_i32_255 c1_i32_257 k0_t2
  let v1017 : Index := Scalar.indexCast arg15
  let c416_833 : Index := 416#32
  ![0, 0, v1017.toNat, 416]
def k0_off105 (k0_t2 : Fin k0_t2_loop.trips) : Fin 4 → Nat :=
  let c0_i32_834 : BitVec 32 := 0#32
  let v1021 : Index := Scalar.indexCast c0_i32_834
  let c0_i32_835 : BitVec 32 := 0#32
  let v1022 : Index := Scalar.indexCast c0_i32_835
  let c0_i32_255 : BitVec 32 := 0#32
  let c1_i32_257 : BitVec 32 := 1#32
  let arg15 : BitVec 32 := Scf.iv c0_i32_255 c1_i32_257 k0_t2
  let v1023 : Index := Scalar.indexCast arg15
  let c416_836 : Index := 416#32
  ![0, 0, v1023.toNat, 416]
def k0_off106 (k0_t2 : Fin k0_t2_loop.trips) : Fin 4 → Nat :=
  let c0_i32_837 : BitVec 32 := 0#32
  let v1027 : Index := Scalar.indexCast c0_i32_837
  let c0_i32_838 : BitVec 32 := 0#32
  let v1028 : Index := Scalar.indexCast c0_i32_838
  let c0_i32_255 : BitVec 32 := 0#32
  let c1_i32_257 : BitVec 32 := 1#32
  let arg15 : BitVec 32 := Scf.iv c0_i32_255 c1_i32_257 k0_t2
  let v1029 : Index := Scalar.indexCast arg15
  let c432_839 : Index := 432#32
  ![0, 0, v1029.toNat, 432]
def k0_off107 (k0_t2 : Fin k0_t2_loop.trips) : Fin 4 → Nat :=
  let c0_i32_840 : BitVec 32 := 0#32
  let v1033 : Index := Scalar.indexCast c0_i32_840
  let c0_i32_841 : BitVec 32 := 0#32
  let v1034 : Index := Scalar.indexCast c0_i32_841
  let c0_i32_255 : BitVec 32 := 0#32
  let c1_i32_257 : BitVec 32 := 1#32
  let arg15 : BitVec 32 := Scf.iv c0_i32_255 c1_i32_257 k0_t2
  let v1035 : Index := Scalar.indexCast arg15
  let c432_842 : Index := 432#32
  ![0, 0, v1035.toNat, 432]
def k0_off108 (k0_t2 : Fin k0_t2_loop.trips) : Fin 4 → Nat :=
  let c0_i32_843 : BitVec 32 := 0#32
  let v1039 : Index := Scalar.indexCast c0_i32_843
  let c0_i32_844 : BitVec 32 := 0#32
  let v1040 : Index := Scalar.indexCast c0_i32_844
  let c0_i32_255 : BitVec 32 := 0#32
  let c1_i32_257 : BitVec 32 := 1#32
  let arg15 : BitVec 32 := Scf.iv c0_i32_255 c1_i32_257 k0_t2
  let v1041 : Index := Scalar.indexCast arg15
  let c448_845 : Index := 448#32
  ![0, 0, v1041.toNat, 448]
def k0_off109 (k0_t2 : Fin k0_t2_loop.trips) : Fin 4 → Nat :=
  let c0_i32_846 : BitVec 32 := 0#32
  let v1045 : Index := Scalar.indexCast c0_i32_846
  let c0_i32_847 : BitVec 32 := 0#32
  let v1046 : Index := Scalar.indexCast c0_i32_847
  let c0_i32_255 : BitVec 32 := 0#32
  let c1_i32_257 : BitVec 32 := 1#32
  let arg15 : BitVec 32 := Scf.iv c0_i32_255 c1_i32_257 k0_t2
  let v1047 : Index := Scalar.indexCast arg15
  let c448_848 : Index := 448#32
  ![0, 0, v1047.toNat, 448]
def k0_off110 (k0_t2 : Fin k0_t2_loop.trips) : Fin 4 → Nat :=
  let c0_i32_849 : BitVec 32 := 0#32
  let v1051 : Index := Scalar.indexCast c0_i32_849
  let c0_i32_850 : BitVec 32 := 0#32
  let v1052 : Index := Scalar.indexCast c0_i32_850
  let c0_i32_255 : BitVec 32 := 0#32
  let c1_i32_257 : BitVec 32 := 1#32
  let arg15 : BitVec 32 := Scf.iv c0_i32_255 c1_i32_257 k0_t2
  let v1053 : Index := Scalar.indexCast arg15
  let c464_851 : Index := 464#32
  ![0, 0, v1053.toNat, 464]
def k0_off111 (k0_t2 : Fin k0_t2_loop.trips) : Fin 4 → Nat :=
  let c0_i32_852 : BitVec 32 := 0#32
  let v1057 : Index := Scalar.indexCast c0_i32_852
  let c0_i32_853 : BitVec 32 := 0#32
  let v1058 : Index := Scalar.indexCast c0_i32_853
  let c0_i32_255 : BitVec 32 := 0#32
  let c1_i32_257 : BitVec 32 := 1#32
  let arg15 : BitVec 32 := Scf.iv c0_i32_255 c1_i32_257 k0_t2
  let v1059 : Index := Scalar.indexCast arg15
  let c464_854 : Index := 464#32
  ![0, 0, v1059.toNat, 464]
def k0_off112 (k0_t2 : Fin k0_t2_loop.trips) : Fin 4 → Nat :=
  let c0_i32_855 : BitVec 32 := 0#32
  let v1063 : Index := Scalar.indexCast c0_i32_855
  let c0_i32_856 : BitVec 32 := 0#32
  let v1064 : Index := Scalar.indexCast c0_i32_856
  let c0_i32_255 : BitVec 32 := 0#32
  let c1_i32_257 : BitVec 32 := 1#32
  let arg15 : BitVec 32 := Scf.iv c0_i32_255 c1_i32_257 k0_t2
  let v1065 : Index := Scalar.indexCast arg15
  let c480_857 : Index := 480#32
  ![0, 0, v1065.toNat, 480]
def k0_off113 (k0_t2 : Fin k0_t2_loop.trips) : Fin 4 → Nat :=
  let c0_i32_858 : BitVec 32 := 0#32
  let v1069 : Index := Scalar.indexCast c0_i32_858
  let c0_i32_859 : BitVec 32 := 0#32
  let v1070 : Index := Scalar.indexCast c0_i32_859
  let c0_i32_255 : BitVec 32 := 0#32
  let c1_i32_257 : BitVec 32 := 1#32
  let arg15 : BitVec 32 := Scf.iv c0_i32_255 c1_i32_257 k0_t2
  let v1071 : Index := Scalar.indexCast arg15
  let c480_860 : Index := 480#32
  ![0, 0, v1071.toNat, 480]
def k0_off114 (k0_t2 : Fin k0_t2_loop.trips) : Fin 4 → Nat :=
  let c0_i32_861 : BitVec 32 := 0#32
  let v1075 : Index := Scalar.indexCast c0_i32_861
  let c0_i32_862 : BitVec 32 := 0#32
  let v1076 : Index := Scalar.indexCast c0_i32_862
  let c0_i32_255 : BitVec 32 := 0#32
  let c1_i32_257 : BitVec 32 := 1#32
  let arg15 : BitVec 32 := Scf.iv c0_i32_255 c1_i32_257 k0_t2
  let v1077 : Index := Scalar.indexCast arg15
  let c496_863 : Index := 496#32
  ![0, 0, v1077.toNat, 496]
def k0_off115 (k0_t2 : Fin k0_t2_loop.trips) : Fin 4 → Nat :=
  let c0_i32_864 : BitVec 32 := 0#32
  let v1081 : Index := Scalar.indexCast c0_i32_864
  let c0_i32_865 : BitVec 32 := 0#32
  let v1082 : Index := Scalar.indexCast c0_i32_865
  let c0_i32_255 : BitVec 32 := 0#32
  let c1_i32_257 : BitVec 32 := 1#32
  let arg15 : BitVec 32 := Scf.iv c0_i32_255 c1_i32_257 k0_t2
  let v1083 : Index := Scalar.indexCast arg15
  let c496_866 : Index := 496#32
  ![0, 0, v1083.toNat, 496]
def k0_off116 (k0_t2 : Fin k0_t2_loop.trips) : Fin 4 → Nat :=
  let c0_i32_867 : BitVec 32 := 0#32
  let v1087 : Index := Scalar.indexCast c0_i32_867
  let c1_i32_868 : BitVec 32 := 1#32
  let v1088 : Index := Scalar.indexCast c1_i32_868
  let c0_i32_255 : BitVec 32 := 0#32
  let c1_i32_257 : BitVec 32 := 1#32
  let arg15 : BitVec 32 := Scf.iv c0_i32_255 c1_i32_257 k0_t2
  let v1089 : Index := Scalar.indexCast arg15
  let c0_869 : Index := 0#32
  ![0, 1, v1089.toNat, 0]
def k0_off117 (k0_t2 : Fin k0_t2_loop.trips) : Fin 4 → Nat :=
  let c0_i32_870 : BitVec 32 := 0#32
  let v1093 : Index := Scalar.indexCast c0_i32_870
  let c1_i32_871 : BitVec 32 := 1#32
  let v1094 : Index := Scalar.indexCast c1_i32_871
  let c0_i32_255 : BitVec 32 := 0#32
  let c1_i32_257 : BitVec 32 := 1#32
  let arg15 : BitVec 32 := Scf.iv c0_i32_255 c1_i32_257 k0_t2
  let v1095 : Index := Scalar.indexCast arg15
  let c0_872 : Index := 0#32
  ![0, 1, v1095.toNat, 0]
def k0_off118 (k0_t2 : Fin k0_t2_loop.trips) : Fin 4 → Nat :=
  let c0_i32_873 : BitVec 32 := 0#32
  let v1099 : Index := Scalar.indexCast c0_i32_873
  let c1_i32_874 : BitVec 32 := 1#32
  let v1100 : Index := Scalar.indexCast c1_i32_874
  let c0_i32_255 : BitVec 32 := 0#32
  let c1_i32_257 : BitVec 32 := 1#32
  let arg15 : BitVec 32 := Scf.iv c0_i32_255 c1_i32_257 k0_t2
  let v1101 : Index := Scalar.indexCast arg15
  let c16_875 : Index := 16#32
  ![0, 1, v1101.toNat, 16]
def k0_off119 (k0_t2 : Fin k0_t2_loop.trips) : Fin 4 → Nat :=
  let c0_i32_876 : BitVec 32 := 0#32
  let v1105 : Index := Scalar.indexCast c0_i32_876
  let c1_i32_877 : BitVec 32 := 1#32
  let v1106 : Index := Scalar.indexCast c1_i32_877
  let c0_i32_255 : BitVec 32 := 0#32
  let c1_i32_257 : BitVec 32 := 1#32
  let arg15 : BitVec 32 := Scf.iv c0_i32_255 c1_i32_257 k0_t2
  let v1107 : Index := Scalar.indexCast arg15
  let c16_878 : Index := 16#32
  ![0, 1, v1107.toNat, 16]
def k0_off120 (k0_t2 : Fin k0_t2_loop.trips) : Fin 4 → Nat :=
  let c0_i32_879 : BitVec 32 := 0#32
  let v1111 : Index := Scalar.indexCast c0_i32_879
  let c1_i32_880 : BitVec 32 := 1#32
  let v1112 : Index := Scalar.indexCast c1_i32_880
  let c0_i32_255 : BitVec 32 := 0#32
  let c1_i32_257 : BitVec 32 := 1#32
  let arg15 : BitVec 32 := Scf.iv c0_i32_255 c1_i32_257 k0_t2
  let v1113 : Index := Scalar.indexCast arg15
  let c32_881 : Index := 32#32
  ![0, 1, v1113.toNat, 32]
def k0_off121 (k0_t2 : Fin k0_t2_loop.trips) : Fin 4 → Nat :=
  let c0_i32_882 : BitVec 32 := 0#32
  let v1117 : Index := Scalar.indexCast c0_i32_882
  let c1_i32_883 : BitVec 32 := 1#32
  let v1118 : Index := Scalar.indexCast c1_i32_883
  let c0_i32_255 : BitVec 32 := 0#32
  let c1_i32_257 : BitVec 32 := 1#32
  let arg15 : BitVec 32 := Scf.iv c0_i32_255 c1_i32_257 k0_t2
  let v1119 : Index := Scalar.indexCast arg15
  let c32_884 : Index := 32#32
  ![0, 1, v1119.toNat, 32]
def k0_off122 (k0_t2 : Fin k0_t2_loop.trips) : Fin 4 → Nat :=
  let c0_i32_885 : BitVec 32 := 0#32
  let v1123 : Index := Scalar.indexCast c0_i32_885
  let c1_i32_886 : BitVec 32 := 1#32
  let v1124 : Index := Scalar.indexCast c1_i32_886
  let c0_i32_255 : BitVec 32 := 0#32
  let c1_i32_257 : BitVec 32 := 1#32
  let arg15 : BitVec 32 := Scf.iv c0_i32_255 c1_i32_257 k0_t2
  let v1125 : Index := Scalar.indexCast arg15
  let c48_887 : Index := 48#32
  ![0, 1, v1125.toNat, 48]
def k0_off123 (k0_t2 : Fin k0_t2_loop.trips) : Fin 4 → Nat :=
  let c0_i32_888 : BitVec 32 := 0#32
  let v1129 : Index := Scalar.indexCast c0_i32_888
  let c1_i32_889 : BitVec 32 := 1#32
  let v1130 : Index := Scalar.indexCast c1_i32_889
  let c0_i32_255 : BitVec 32 := 0#32
  let c1_i32_257 : BitVec 32 := 1#32
  let arg15 : BitVec 32 := Scf.iv c0_i32_255 c1_i32_257 k0_t2
  let v1131 : Index := Scalar.indexCast arg15
  let c48_890 : Index := 48#32
  ![0, 1, v1131.toNat, 48]
def k0_off124 (k0_t2 : Fin k0_t2_loop.trips) : Fin 4 → Nat :=
  let c0_i32_891 : BitVec 32 := 0#32
  let v1135 : Index := Scalar.indexCast c0_i32_891
  let c1_i32_892 : BitVec 32 := 1#32
  let v1136 : Index := Scalar.indexCast c1_i32_892
  let c0_i32_255 : BitVec 32 := 0#32
  let c1_i32_257 : BitVec 32 := 1#32
  let arg15 : BitVec 32 := Scf.iv c0_i32_255 c1_i32_257 k0_t2
  let v1137 : Index := Scalar.indexCast arg15
  let c64_893 : Index := 64#32
  ![0, 1, v1137.toNat, 64]
def k0_off125 (k0_t2 : Fin k0_t2_loop.trips) : Fin 4 → Nat :=
  let c0_i32_894 : BitVec 32 := 0#32
  let v1141 : Index := Scalar.indexCast c0_i32_894
  let c1_i32_895 : BitVec 32 := 1#32
  let v1142 : Index := Scalar.indexCast c1_i32_895
  let c0_i32_255 : BitVec 32 := 0#32
  let c1_i32_257 : BitVec 32 := 1#32
  let arg15 : BitVec 32 := Scf.iv c0_i32_255 c1_i32_257 k0_t2
  let v1143 : Index := Scalar.indexCast arg15
  let c64_896 : Index := 64#32
  ![0, 1, v1143.toNat, 64]
def k0_off126 (k0_t2 : Fin k0_t2_loop.trips) : Fin 4 → Nat :=
  let c0_i32_897 : BitVec 32 := 0#32
  let v1147 : Index := Scalar.indexCast c0_i32_897
  let c1_i32_898 : BitVec 32 := 1#32
  let v1148 : Index := Scalar.indexCast c1_i32_898
  let c0_i32_255 : BitVec 32 := 0#32
  let c1_i32_257 : BitVec 32 := 1#32
  let arg15 : BitVec 32 := Scf.iv c0_i32_255 c1_i32_257 k0_t2
  let v1149 : Index := Scalar.indexCast arg15
  let c80_899 : Index := 80#32
  ![0, 1, v1149.toNat, 80]
def k0_off127 (k0_t2 : Fin k0_t2_loop.trips) : Fin 4 → Nat :=
  let c0_i32_900 : BitVec 32 := 0#32
  let v1153 : Index := Scalar.indexCast c0_i32_900
  let c1_i32_901 : BitVec 32 := 1#32
  let v1154 : Index := Scalar.indexCast c1_i32_901
  let c0_i32_255 : BitVec 32 := 0#32
  let c1_i32_257 : BitVec 32 := 1#32
  let arg15 : BitVec 32 := Scf.iv c0_i32_255 c1_i32_257 k0_t2
  let v1155 : Index := Scalar.indexCast arg15
  let c80_902 : Index := 80#32
  ![0, 1, v1155.toNat, 80]
def k0_off128 (k0_t2 : Fin k0_t2_loop.trips) : Fin 4 → Nat :=
  let c0_i32_903 : BitVec 32 := 0#32
  let v1159 : Index := Scalar.indexCast c0_i32_903
  let c1_i32_904 : BitVec 32 := 1#32
  let v1160 : Index := Scalar.indexCast c1_i32_904
  let c0_i32_255 : BitVec 32 := 0#32
  let c1_i32_257 : BitVec 32 := 1#32
  let arg15 : BitVec 32 := Scf.iv c0_i32_255 c1_i32_257 k0_t2
  let v1161 : Index := Scalar.indexCast arg15
  let c96_905 : Index := 96#32
  ![0, 1, v1161.toNat, 96]
def k0_off129 (k0_t2 : Fin k0_t2_loop.trips) : Fin 4 → Nat :=
  let c0_i32_906 : BitVec 32 := 0#32
  let v1165 : Index := Scalar.indexCast c0_i32_906
  let c1_i32_907 : BitVec 32 := 1#32
  let v1166 : Index := Scalar.indexCast c1_i32_907
  let c0_i32_255 : BitVec 32 := 0#32
  let c1_i32_257 : BitVec 32 := 1#32
  let arg15 : BitVec 32 := Scf.iv c0_i32_255 c1_i32_257 k0_t2
  let v1167 : Index := Scalar.indexCast arg15
  let c96_908 : Index := 96#32
  ![0, 1, v1167.toNat, 96]
def k0_off130 (k0_t2 : Fin k0_t2_loop.trips) : Fin 4 → Nat :=
  let c0_i32_909 : BitVec 32 := 0#32
  let v1171 : Index := Scalar.indexCast c0_i32_909
  let c1_i32_910 : BitVec 32 := 1#32
  let v1172 : Index := Scalar.indexCast c1_i32_910
  let c0_i32_255 : BitVec 32 := 0#32
  let c1_i32_257 : BitVec 32 := 1#32
  let arg15 : BitVec 32 := Scf.iv c0_i32_255 c1_i32_257 k0_t2
  let v1173 : Index := Scalar.indexCast arg15
  let c112_911 : Index := 112#32
  ![0, 1, v1173.toNat, 112]
def k0_off131 (k0_t2 : Fin k0_t2_loop.trips) : Fin 4 → Nat :=
  let c0_i32_912 : BitVec 32 := 0#32
  let v1177 : Index := Scalar.indexCast c0_i32_912
  let c1_i32_913 : BitVec 32 := 1#32
  let v1178 : Index := Scalar.indexCast c1_i32_913
  let c0_i32_255 : BitVec 32 := 0#32
  let c1_i32_257 : BitVec 32 := 1#32
  let arg15 : BitVec 32 := Scf.iv c0_i32_255 c1_i32_257 k0_t2
  let v1179 : Index := Scalar.indexCast arg15
  let c112_914 : Index := 112#32
  ![0, 1, v1179.toNat, 112]
def k0_off132 (k0_t2 : Fin k0_t2_loop.trips) : Fin 4 → Nat :=
  let c0_i32_915 : BitVec 32 := 0#32
  let v1183 : Index := Scalar.indexCast c0_i32_915
  let c1_i32_916 : BitVec 32 := 1#32
  let v1184 : Index := Scalar.indexCast c1_i32_916
  let c0_i32_255 : BitVec 32 := 0#32
  let c1_i32_257 : BitVec 32 := 1#32
  let arg15 : BitVec 32 := Scf.iv c0_i32_255 c1_i32_257 k0_t2
  let v1185 : Index := Scalar.indexCast arg15
  let c128_917 : Index := 128#32
  ![0, 1, v1185.toNat, 128]
def k0_off133 (k0_t2 : Fin k0_t2_loop.trips) : Fin 4 → Nat :=
  let c0_i32_918 : BitVec 32 := 0#32
  let v1189 : Index := Scalar.indexCast c0_i32_918
  let c1_i32_919 : BitVec 32 := 1#32
  let v1190 : Index := Scalar.indexCast c1_i32_919
  let c0_i32_255 : BitVec 32 := 0#32
  let c1_i32_257 : BitVec 32 := 1#32
  let arg15 : BitVec 32 := Scf.iv c0_i32_255 c1_i32_257 k0_t2
  let v1191 : Index := Scalar.indexCast arg15
  let c128_920 : Index := 128#32
  ![0, 1, v1191.toNat, 128]
def k0_off134 (k0_t2 : Fin k0_t2_loop.trips) : Fin 4 → Nat :=
  let c0_i32_921 : BitVec 32 := 0#32
  let v1195 : Index := Scalar.indexCast c0_i32_921
  let c1_i32_922 : BitVec 32 := 1#32
  let v1196 : Index := Scalar.indexCast c1_i32_922
  let c0_i32_255 : BitVec 32 := 0#32
  let c1_i32_257 : BitVec 32 := 1#32
  let arg15 : BitVec 32 := Scf.iv c0_i32_255 c1_i32_257 k0_t2
  let v1197 : Index := Scalar.indexCast arg15
  let c144_923 : Index := 144#32
  ![0, 1, v1197.toNat, 144]
def k0_off135 (k0_t2 : Fin k0_t2_loop.trips) : Fin 4 → Nat :=
  let c0_i32_924 : BitVec 32 := 0#32
  let v1201 : Index := Scalar.indexCast c0_i32_924
  let c1_i32_925 : BitVec 32 := 1#32
  let v1202 : Index := Scalar.indexCast c1_i32_925
  let c0_i32_255 : BitVec 32 := 0#32
  let c1_i32_257 : BitVec 32 := 1#32
  let arg15 : BitVec 32 := Scf.iv c0_i32_255 c1_i32_257 k0_t2
  let v1203 : Index := Scalar.indexCast arg15
  let c144_926 : Index := 144#32
  ![0, 1, v1203.toNat, 144]
def k0_off136 (k0_t2 : Fin k0_t2_loop.trips) : Fin 4 → Nat :=
  let c0_i32_927 : BitVec 32 := 0#32
  let v1207 : Index := Scalar.indexCast c0_i32_927
  let c1_i32_928 : BitVec 32 := 1#32
  let v1208 : Index := Scalar.indexCast c1_i32_928
  let c0_i32_255 : BitVec 32 := 0#32
  let c1_i32_257 : BitVec 32 := 1#32
  let arg15 : BitVec 32 := Scf.iv c0_i32_255 c1_i32_257 k0_t2
  let v1209 : Index := Scalar.indexCast arg15
  let c160_929 : Index := 160#32
  ![0, 1, v1209.toNat, 160]
def k0_off137 (k0_t2 : Fin k0_t2_loop.trips) : Fin 4 → Nat :=
  let c0_i32_930 : BitVec 32 := 0#32
  let v1213 : Index := Scalar.indexCast c0_i32_930
  let c1_i32_931 : BitVec 32 := 1#32
  let v1214 : Index := Scalar.indexCast c1_i32_931
  let c0_i32_255 : BitVec 32 := 0#32
  let c1_i32_257 : BitVec 32 := 1#32
  let arg15 : BitVec 32 := Scf.iv c0_i32_255 c1_i32_257 k0_t2
  let v1215 : Index := Scalar.indexCast arg15
  let c160_932 : Index := 160#32
  ![0, 1, v1215.toNat, 160]
def k0_off138 (k0_t2 : Fin k0_t2_loop.trips) : Fin 4 → Nat :=
  let c0_i32_933 : BitVec 32 := 0#32
  let v1219 : Index := Scalar.indexCast c0_i32_933
  let c1_i32_934 : BitVec 32 := 1#32
  let v1220 : Index := Scalar.indexCast c1_i32_934
  let c0_i32_255 : BitVec 32 := 0#32
  let c1_i32_257 : BitVec 32 := 1#32
  let arg15 : BitVec 32 := Scf.iv c0_i32_255 c1_i32_257 k0_t2
  let v1221 : Index := Scalar.indexCast arg15
  let c176_935 : Index := 176#32
  ![0, 1, v1221.toNat, 176]
def k0_off139 (k0_t2 : Fin k0_t2_loop.trips) : Fin 4 → Nat :=
  let c0_i32_936 : BitVec 32 := 0#32
  let v1225 : Index := Scalar.indexCast c0_i32_936
  let c1_i32_937 : BitVec 32 := 1#32
  let v1226 : Index := Scalar.indexCast c1_i32_937
  let c0_i32_255 : BitVec 32 := 0#32
  let c1_i32_257 : BitVec 32 := 1#32
  let arg15 : BitVec 32 := Scf.iv c0_i32_255 c1_i32_257 k0_t2
  let v1227 : Index := Scalar.indexCast arg15
  let c176_938 : Index := 176#32
  ![0, 1, v1227.toNat, 176]
def k0_off140 (k0_t2 : Fin k0_t2_loop.trips) : Fin 4 → Nat :=
  let c0_i32_939 : BitVec 32 := 0#32
  let v1231 : Index := Scalar.indexCast c0_i32_939
  let c1_i32_940 : BitVec 32 := 1#32
  let v1232 : Index := Scalar.indexCast c1_i32_940
  let c0_i32_255 : BitVec 32 := 0#32
  let c1_i32_257 : BitVec 32 := 1#32
  let arg15 : BitVec 32 := Scf.iv c0_i32_255 c1_i32_257 k0_t2
  let v1233 : Index := Scalar.indexCast arg15
  let c192_941 : Index := 192#32
  ![0, 1, v1233.toNat, 192]
def k0_off141 (k0_t2 : Fin k0_t2_loop.trips) : Fin 4 → Nat :=
  let c0_i32_942 : BitVec 32 := 0#32
  let v1237 : Index := Scalar.indexCast c0_i32_942
  let c1_i32_943 : BitVec 32 := 1#32
  let v1238 : Index := Scalar.indexCast c1_i32_943
  let c0_i32_255 : BitVec 32 := 0#32
  let c1_i32_257 : BitVec 32 := 1#32
  let arg15 : BitVec 32 := Scf.iv c0_i32_255 c1_i32_257 k0_t2
  let v1239 : Index := Scalar.indexCast arg15
  let c192_944 : Index := 192#32
  ![0, 1, v1239.toNat, 192]
def k0_off142 (k0_t2 : Fin k0_t2_loop.trips) : Fin 4 → Nat :=
  let c0_i32_945 : BitVec 32 := 0#32
  let v1243 : Index := Scalar.indexCast c0_i32_945
  let c1_i32_946 : BitVec 32 := 1#32
  let v1244 : Index := Scalar.indexCast c1_i32_946
  let c0_i32_255 : BitVec 32 := 0#32
  let c1_i32_257 : BitVec 32 := 1#32
  let arg15 : BitVec 32 := Scf.iv c0_i32_255 c1_i32_257 k0_t2
  let v1245 : Index := Scalar.indexCast arg15
  let c208_947 : Index := 208#32
  ![0, 1, v1245.toNat, 208]
def k0_off143 (k0_t2 : Fin k0_t2_loop.trips) : Fin 4 → Nat :=
  let c0_i32_948 : BitVec 32 := 0#32
  let v1249 : Index := Scalar.indexCast c0_i32_948
  let c1_i32_949 : BitVec 32 := 1#32
  let v1250 : Index := Scalar.indexCast c1_i32_949
  let c0_i32_255 : BitVec 32 := 0#32
  let c1_i32_257 : BitVec 32 := 1#32
  let arg15 : BitVec 32 := Scf.iv c0_i32_255 c1_i32_257 k0_t2
  let v1251 : Index := Scalar.indexCast arg15
  let c208_950 : Index := 208#32
  ![0, 1, v1251.toNat, 208]
def k0_off144 (k0_t2 : Fin k0_t2_loop.trips) : Fin 4 → Nat :=
  let c0_i32_951 : BitVec 32 := 0#32
  let v1255 : Index := Scalar.indexCast c0_i32_951
  let c1_i32_952 : BitVec 32 := 1#32
  let v1256 : Index := Scalar.indexCast c1_i32_952
  let c0_i32_255 : BitVec 32 := 0#32
  let c1_i32_257 : BitVec 32 := 1#32
  let arg15 : BitVec 32 := Scf.iv c0_i32_255 c1_i32_257 k0_t2
  let v1257 : Index := Scalar.indexCast arg15
  let c224_953 : Index := 224#32
  ![0, 1, v1257.toNat, 224]
def k0_off145 (k0_t2 : Fin k0_t2_loop.trips) : Fin 4 → Nat :=
  let c0_i32_954 : BitVec 32 := 0#32
  let v1261 : Index := Scalar.indexCast c0_i32_954
  let c1_i32_955 : BitVec 32 := 1#32
  let v1262 : Index := Scalar.indexCast c1_i32_955
  let c0_i32_255 : BitVec 32 := 0#32
  let c1_i32_257 : BitVec 32 := 1#32
  let arg15 : BitVec 32 := Scf.iv c0_i32_255 c1_i32_257 k0_t2
  let v1263 : Index := Scalar.indexCast arg15
  let c224_956 : Index := 224#32
  ![0, 1, v1263.toNat, 224]
def k0_off146 (k0_t2 : Fin k0_t2_loop.trips) : Fin 4 → Nat :=
  let c0_i32_957 : BitVec 32 := 0#32
  let v1267 : Index := Scalar.indexCast c0_i32_957
  let c1_i32_958 : BitVec 32 := 1#32
  let v1268 : Index := Scalar.indexCast c1_i32_958
  let c0_i32_255 : BitVec 32 := 0#32
  let c1_i32_257 : BitVec 32 := 1#32
  let arg15 : BitVec 32 := Scf.iv c0_i32_255 c1_i32_257 k0_t2
  let v1269 : Index := Scalar.indexCast arg15
  let c240_959 : Index := 240#32
  ![0, 1, v1269.toNat, 240]
def k0_off147 (k0_t2 : Fin k0_t2_loop.trips) : Fin 4 → Nat :=
  let c0_i32_960 : BitVec 32 := 0#32
  let v1273 : Index := Scalar.indexCast c0_i32_960
  let c1_i32_961 : BitVec 32 := 1#32
  let v1274 : Index := Scalar.indexCast c1_i32_961
  let c0_i32_255 : BitVec 32 := 0#32
  let c1_i32_257 : BitVec 32 := 1#32
  let arg15 : BitVec 32 := Scf.iv c0_i32_255 c1_i32_257 k0_t2
  let v1275 : Index := Scalar.indexCast arg15
  let c240_962 : Index := 240#32
  ![0, 1, v1275.toNat, 240]
def k0_off148 (k0_t2 : Fin k0_t2_loop.trips) : Fin 4 → Nat :=
  let c0_i32_963 : BitVec 32 := 0#32
  let v1279 : Index := Scalar.indexCast c0_i32_963
  let c1_i32_964 : BitVec 32 := 1#32
  let v1280 : Index := Scalar.indexCast c1_i32_964
  let c0_i32_255 : BitVec 32 := 0#32
  let c1_i32_257 : BitVec 32 := 1#32
  let arg15 : BitVec 32 := Scf.iv c0_i32_255 c1_i32_257 k0_t2
  let v1281 : Index := Scalar.indexCast arg15
  let c256_965 : Index := 256#32
  ![0, 1, v1281.toNat, 256]
def k0_off149 (k0_t2 : Fin k0_t2_loop.trips) : Fin 4 → Nat :=
  let c0_i32_966 : BitVec 32 := 0#32
  let v1285 : Index := Scalar.indexCast c0_i32_966
  let c1_i32_967 : BitVec 32 := 1#32
  let v1286 : Index := Scalar.indexCast c1_i32_967
  let c0_i32_255 : BitVec 32 := 0#32
  let c1_i32_257 : BitVec 32 := 1#32
  let arg15 : BitVec 32 := Scf.iv c0_i32_255 c1_i32_257 k0_t2
  let v1287 : Index := Scalar.indexCast arg15
  let c256_968 : Index := 256#32
  ![0, 1, v1287.toNat, 256]
def k0_off150 (k0_t2 : Fin k0_t2_loop.trips) : Fin 4 → Nat :=
  let c0_i32_969 : BitVec 32 := 0#32
  let v1291 : Index := Scalar.indexCast c0_i32_969
  let c1_i32_970 : BitVec 32 := 1#32
  let v1292 : Index := Scalar.indexCast c1_i32_970
  let c0_i32_255 : BitVec 32 := 0#32
  let c1_i32_257 : BitVec 32 := 1#32
  let arg15 : BitVec 32 := Scf.iv c0_i32_255 c1_i32_257 k0_t2
  let v1293 : Index := Scalar.indexCast arg15
  let c272_971 : Index := 272#32
  ![0, 1, v1293.toNat, 272]
def k0_off151 (k0_t2 : Fin k0_t2_loop.trips) : Fin 4 → Nat :=
  let c0_i32_972 : BitVec 32 := 0#32
  let v1297 : Index := Scalar.indexCast c0_i32_972
  let c1_i32_973 : BitVec 32 := 1#32
  let v1298 : Index := Scalar.indexCast c1_i32_973
  let c0_i32_255 : BitVec 32 := 0#32
  let c1_i32_257 : BitVec 32 := 1#32
  let arg15 : BitVec 32 := Scf.iv c0_i32_255 c1_i32_257 k0_t2
  let v1299 : Index := Scalar.indexCast arg15
  let c272_974 : Index := 272#32
  ![0, 1, v1299.toNat, 272]
def k0_off152 (k0_t2 : Fin k0_t2_loop.trips) : Fin 4 → Nat :=
  let c0_i32_975 : BitVec 32 := 0#32
  let v1303 : Index := Scalar.indexCast c0_i32_975
  let c1_i32_976 : BitVec 32 := 1#32
  let v1304 : Index := Scalar.indexCast c1_i32_976
  let c0_i32_255 : BitVec 32 := 0#32
  let c1_i32_257 : BitVec 32 := 1#32
  let arg15 : BitVec 32 := Scf.iv c0_i32_255 c1_i32_257 k0_t2
  let v1305 : Index := Scalar.indexCast arg15
  let c288_977 : Index := 288#32
  ![0, 1, v1305.toNat, 288]
def k0_off153 (k0_t2 : Fin k0_t2_loop.trips) : Fin 4 → Nat :=
  let c0_i32_978 : BitVec 32 := 0#32
  let v1309 : Index := Scalar.indexCast c0_i32_978
  let c1_i32_979 : BitVec 32 := 1#32
  let v1310 : Index := Scalar.indexCast c1_i32_979
  let c0_i32_255 : BitVec 32 := 0#32
  let c1_i32_257 : BitVec 32 := 1#32
  let arg15 : BitVec 32 := Scf.iv c0_i32_255 c1_i32_257 k0_t2
  let v1311 : Index := Scalar.indexCast arg15
  let c288_980 : Index := 288#32
  ![0, 1, v1311.toNat, 288]
def k0_off154 (k0_t2 : Fin k0_t2_loop.trips) : Fin 4 → Nat :=
  let c0_i32_981 : BitVec 32 := 0#32
  let v1315 : Index := Scalar.indexCast c0_i32_981
  let c1_i32_982 : BitVec 32 := 1#32
  let v1316 : Index := Scalar.indexCast c1_i32_982
  let c0_i32_255 : BitVec 32 := 0#32
  let c1_i32_257 : BitVec 32 := 1#32
  let arg15 : BitVec 32 := Scf.iv c0_i32_255 c1_i32_257 k0_t2
  let v1317 : Index := Scalar.indexCast arg15
  let c304_983 : Index := 304#32
  ![0, 1, v1317.toNat, 304]
def k0_off155 (k0_t2 : Fin k0_t2_loop.trips) : Fin 4 → Nat :=
  let c0_i32_984 : BitVec 32 := 0#32
  let v1321 : Index := Scalar.indexCast c0_i32_984
  let c1_i32_985 : BitVec 32 := 1#32
  let v1322 : Index := Scalar.indexCast c1_i32_985
  let c0_i32_255 : BitVec 32 := 0#32
  let c1_i32_257 : BitVec 32 := 1#32
  let arg15 : BitVec 32 := Scf.iv c0_i32_255 c1_i32_257 k0_t2
  let v1323 : Index := Scalar.indexCast arg15
  let c304_986 : Index := 304#32
  ![0, 1, v1323.toNat, 304]
def k0_off156 (k0_t2 : Fin k0_t2_loop.trips) : Fin 4 → Nat :=
  let c0_i32_987 : BitVec 32 := 0#32
  let v1327 : Index := Scalar.indexCast c0_i32_987
  let c1_i32_988 : BitVec 32 := 1#32
  let v1328 : Index := Scalar.indexCast c1_i32_988
  let c0_i32_255 : BitVec 32 := 0#32
  let c1_i32_257 : BitVec 32 := 1#32
  let arg15 : BitVec 32 := Scf.iv c0_i32_255 c1_i32_257 k0_t2
  let v1329 : Index := Scalar.indexCast arg15
  let c320_989 : Index := 320#32
  ![0, 1, v1329.toNat, 320]
def k0_off157 (k0_t2 : Fin k0_t2_loop.trips) : Fin 4 → Nat :=
  let c0_i32_990 : BitVec 32 := 0#32
  let v1333 : Index := Scalar.indexCast c0_i32_990
  let c1_i32_991 : BitVec 32 := 1#32
  let v1334 : Index := Scalar.indexCast c1_i32_991
  let c0_i32_255 : BitVec 32 := 0#32
  let c1_i32_257 : BitVec 32 := 1#32
  let arg15 : BitVec 32 := Scf.iv c0_i32_255 c1_i32_257 k0_t2
  let v1335 : Index := Scalar.indexCast arg15
  let c320_992 : Index := 320#32
  ![0, 1, v1335.toNat, 320]
def k0_off158 (k0_t2 : Fin k0_t2_loop.trips) : Fin 4 → Nat :=
  let c0_i32_993 : BitVec 32 := 0#32
  let v1339 : Index := Scalar.indexCast c0_i32_993
  let c1_i32_994 : BitVec 32 := 1#32
  let v1340 : Index := Scalar.indexCast c1_i32_994
  let c0_i32_255 : BitVec 32 := 0#32
  let c1_i32_257 : BitVec 32 := 1#32
  let arg15 : BitVec 32 := Scf.iv c0_i32_255 c1_i32_257 k0_t2
  let v1341 : Index := Scalar.indexCast arg15
  let c336_995 : Index := 336#32
  ![0, 1, v1341.toNat, 336]
def k0_off159 (k0_t2 : Fin k0_t2_loop.trips) : Fin 4 → Nat :=
  let c0_i32_996 : BitVec 32 := 0#32
  let v1345 : Index := Scalar.indexCast c0_i32_996
  let c1_i32_997 : BitVec 32 := 1#32
  let v1346 : Index := Scalar.indexCast c1_i32_997
  let c0_i32_255 : BitVec 32 := 0#32
  let c1_i32_257 : BitVec 32 := 1#32
  let arg15 : BitVec 32 := Scf.iv c0_i32_255 c1_i32_257 k0_t2
  let v1347 : Index := Scalar.indexCast arg15
  let c336_998 : Index := 336#32
  ![0, 1, v1347.toNat, 336]
def k0_off160 (k0_t2 : Fin k0_t2_loop.trips) : Fin 4 → Nat :=
  let c0_i32_999 : BitVec 32 := 0#32
  let v1351 : Index := Scalar.indexCast c0_i32_999
  let c1_i32_1000 : BitVec 32 := 1#32
  let v1352 : Index := Scalar.indexCast c1_i32_1000
  let c0_i32_255 : BitVec 32 := 0#32
  let c1_i32_257 : BitVec 32 := 1#32
  let arg15 : BitVec 32 := Scf.iv c0_i32_255 c1_i32_257 k0_t2
  let v1353 : Index := Scalar.indexCast arg15
  let c352_1001 : Index := 352#32
  ![0, 1, v1353.toNat, 352]
def k0_off161 (k0_t2 : Fin k0_t2_loop.trips) : Fin 4 → Nat :=
  let c0_i32_1002 : BitVec 32 := 0#32
  let v1357 : Index := Scalar.indexCast c0_i32_1002
  let c1_i32_1003 : BitVec 32 := 1#32
  let v1358 : Index := Scalar.indexCast c1_i32_1003
  let c0_i32_255 : BitVec 32 := 0#32
  let c1_i32_257 : BitVec 32 := 1#32
  let arg15 : BitVec 32 := Scf.iv c0_i32_255 c1_i32_257 k0_t2
  let v1359 : Index := Scalar.indexCast arg15
  let c352_1004 : Index := 352#32
  ![0, 1, v1359.toNat, 352]
def k0_off162 (k0_t2 : Fin k0_t2_loop.trips) : Fin 4 → Nat :=
  let c0_i32_1005 : BitVec 32 := 0#32
  let v1363 : Index := Scalar.indexCast c0_i32_1005
  let c1_i32_1006 : BitVec 32 := 1#32
  let v1364 : Index := Scalar.indexCast c1_i32_1006
  let c0_i32_255 : BitVec 32 := 0#32
  let c1_i32_257 : BitVec 32 := 1#32
  let arg15 : BitVec 32 := Scf.iv c0_i32_255 c1_i32_257 k0_t2
  let v1365 : Index := Scalar.indexCast arg15
  let c368_1007 : Index := 368#32
  ![0, 1, v1365.toNat, 368]
def k0_off163 (k0_t2 : Fin k0_t2_loop.trips) : Fin 4 → Nat :=
  let c0_i32_1008 : BitVec 32 := 0#32
  let v1369 : Index := Scalar.indexCast c0_i32_1008
  let c1_i32_1009 : BitVec 32 := 1#32
  let v1370 : Index := Scalar.indexCast c1_i32_1009
  let c0_i32_255 : BitVec 32 := 0#32
  let c1_i32_257 : BitVec 32 := 1#32
  let arg15 : BitVec 32 := Scf.iv c0_i32_255 c1_i32_257 k0_t2
  let v1371 : Index := Scalar.indexCast arg15
  let c368_1010 : Index := 368#32
  ![0, 1, v1371.toNat, 368]
def k0_off164 (k0_t2 : Fin k0_t2_loop.trips) : Fin 4 → Nat :=
  let c0_i32_1011 : BitVec 32 := 0#32
  let v1375 : Index := Scalar.indexCast c0_i32_1011
  let c1_i32_1012 : BitVec 32 := 1#32
  let v1376 : Index := Scalar.indexCast c1_i32_1012
  let c0_i32_255 : BitVec 32 := 0#32
  let c1_i32_257 : BitVec 32 := 1#32
  let arg15 : BitVec 32 := Scf.iv c0_i32_255 c1_i32_257 k0_t2
  let v1377 : Index := Scalar.indexCast arg15
  let c384_1013 : Index := 384#32
  ![0, 1, v1377.toNat, 384]
def k0_off165 (k0_t2 : Fin k0_t2_loop.trips) : Fin 4 → Nat :=
  let c0_i32_1014 : BitVec 32 := 0#32
  let v1381 : Index := Scalar.indexCast c0_i32_1014
  let c1_i32_1015 : BitVec 32 := 1#32
  let v1382 : Index := Scalar.indexCast c1_i32_1015
  let c0_i32_255 : BitVec 32 := 0#32
  let c1_i32_257 : BitVec 32 := 1#32
  let arg15 : BitVec 32 := Scf.iv c0_i32_255 c1_i32_257 k0_t2
  let v1383 : Index := Scalar.indexCast arg15
  let c384_1016 : Index := 384#32
  ![0, 1, v1383.toNat, 384]
def k0_off166 (k0_t2 : Fin k0_t2_loop.trips) : Fin 4 → Nat :=
  let c0_i32_1017 : BitVec 32 := 0#32
  let v1387 : Index := Scalar.indexCast c0_i32_1017
  let c1_i32_1018 : BitVec 32 := 1#32
  let v1388 : Index := Scalar.indexCast c1_i32_1018
  let c0_i32_255 : BitVec 32 := 0#32
  let c1_i32_257 : BitVec 32 := 1#32
  let arg15 : BitVec 32 := Scf.iv c0_i32_255 c1_i32_257 k0_t2
  let v1389 : Index := Scalar.indexCast arg15
  let c400_1019 : Index := 400#32
  ![0, 1, v1389.toNat, 400]
def k0_off167 (k0_t2 : Fin k0_t2_loop.trips) : Fin 4 → Nat :=
  let c0_i32_1020 : BitVec 32 := 0#32
  let v1393 : Index := Scalar.indexCast c0_i32_1020
  let c1_i32_1021 : BitVec 32 := 1#32
  let v1394 : Index := Scalar.indexCast c1_i32_1021
  let c0_i32_255 : BitVec 32 := 0#32
  let c1_i32_257 : BitVec 32 := 1#32
  let arg15 : BitVec 32 := Scf.iv c0_i32_255 c1_i32_257 k0_t2
  let v1395 : Index := Scalar.indexCast arg15
  let c400_1022 : Index := 400#32
  ![0, 1, v1395.toNat, 400]
def k0_off168 (k0_t2 : Fin k0_t2_loop.trips) : Fin 4 → Nat :=
  let c0_i32_1023 : BitVec 32 := 0#32
  let v1399 : Index := Scalar.indexCast c0_i32_1023
  let c1_i32_1024 : BitVec 32 := 1#32
  let v1400 : Index := Scalar.indexCast c1_i32_1024
  let c0_i32_255 : BitVec 32 := 0#32
  let c1_i32_257 : BitVec 32 := 1#32
  let arg15 : BitVec 32 := Scf.iv c0_i32_255 c1_i32_257 k0_t2
  let v1401 : Index := Scalar.indexCast arg15
  let c416_1025 : Index := 416#32
  ![0, 1, v1401.toNat, 416]
def k0_off169 (k0_t2 : Fin k0_t2_loop.trips) : Fin 4 → Nat :=
  let c0_i32_1026 : BitVec 32 := 0#32
  let v1405 : Index := Scalar.indexCast c0_i32_1026
  let c1_i32_1027 : BitVec 32 := 1#32
  let v1406 : Index := Scalar.indexCast c1_i32_1027
  let c0_i32_255 : BitVec 32 := 0#32
  let c1_i32_257 : BitVec 32 := 1#32
  let arg15 : BitVec 32 := Scf.iv c0_i32_255 c1_i32_257 k0_t2
  let v1407 : Index := Scalar.indexCast arg15
  let c416_1028 : Index := 416#32
  ![0, 1, v1407.toNat, 416]
def k0_off170 (k0_t2 : Fin k0_t2_loop.trips) : Fin 4 → Nat :=
  let c0_i32_1029 : BitVec 32 := 0#32
  let v1411 : Index := Scalar.indexCast c0_i32_1029
  let c1_i32_1030 : BitVec 32 := 1#32
  let v1412 : Index := Scalar.indexCast c1_i32_1030
  let c0_i32_255 : BitVec 32 := 0#32
  let c1_i32_257 : BitVec 32 := 1#32
  let arg15 : BitVec 32 := Scf.iv c0_i32_255 c1_i32_257 k0_t2
  let v1413 : Index := Scalar.indexCast arg15
  let c432_1031 : Index := 432#32
  ![0, 1, v1413.toNat, 432]
def k0_off171 (k0_t2 : Fin k0_t2_loop.trips) : Fin 4 → Nat :=
  let c0_i32_1032 : BitVec 32 := 0#32
  let v1417 : Index := Scalar.indexCast c0_i32_1032
  let c1_i32_1033 : BitVec 32 := 1#32
  let v1418 : Index := Scalar.indexCast c1_i32_1033
  let c0_i32_255 : BitVec 32 := 0#32
  let c1_i32_257 : BitVec 32 := 1#32
  let arg15 : BitVec 32 := Scf.iv c0_i32_255 c1_i32_257 k0_t2
  let v1419 : Index := Scalar.indexCast arg15
  let c432_1034 : Index := 432#32
  ![0, 1, v1419.toNat, 432]
def k0_off172 (k0_t2 : Fin k0_t2_loop.trips) : Fin 4 → Nat :=
  let c0_i32_1035 : BitVec 32 := 0#32
  let v1423 : Index := Scalar.indexCast c0_i32_1035
  let c1_i32_1036 : BitVec 32 := 1#32
  let v1424 : Index := Scalar.indexCast c1_i32_1036
  let c0_i32_255 : BitVec 32 := 0#32
  let c1_i32_257 : BitVec 32 := 1#32
  let arg15 : BitVec 32 := Scf.iv c0_i32_255 c1_i32_257 k0_t2
  let v1425 : Index := Scalar.indexCast arg15
  let c448_1037 : Index := 448#32
  ![0, 1, v1425.toNat, 448]
def k0_off173 (k0_t2 : Fin k0_t2_loop.trips) : Fin 4 → Nat :=
  let c0_i32_1038 : BitVec 32 := 0#32
  let v1429 : Index := Scalar.indexCast c0_i32_1038
  let c1_i32_1039 : BitVec 32 := 1#32
  let v1430 : Index := Scalar.indexCast c1_i32_1039
  let c0_i32_255 : BitVec 32 := 0#32
  let c1_i32_257 : BitVec 32 := 1#32
  let arg15 : BitVec 32 := Scf.iv c0_i32_255 c1_i32_257 k0_t2
  let v1431 : Index := Scalar.indexCast arg15
  let c448_1040 : Index := 448#32
  ![0, 1, v1431.toNat, 448]
def k0_off174 (k0_t2 : Fin k0_t2_loop.trips) : Fin 4 → Nat :=
  let c0_i32_1041 : BitVec 32 := 0#32
  let v1435 : Index := Scalar.indexCast c0_i32_1041
  let c1_i32_1042 : BitVec 32 := 1#32
  let v1436 : Index := Scalar.indexCast c1_i32_1042
  let c0_i32_255 : BitVec 32 := 0#32
  let c1_i32_257 : BitVec 32 := 1#32
  let arg15 : BitVec 32 := Scf.iv c0_i32_255 c1_i32_257 k0_t2
  let v1437 : Index := Scalar.indexCast arg15
  let c464_1043 : Index := 464#32
  ![0, 1, v1437.toNat, 464]
def k0_off175 (k0_t2 : Fin k0_t2_loop.trips) : Fin 4 → Nat :=
  let c0_i32_1044 : BitVec 32 := 0#32
  let v1441 : Index := Scalar.indexCast c0_i32_1044
  let c1_i32_1045 : BitVec 32 := 1#32
  let v1442 : Index := Scalar.indexCast c1_i32_1045
  let c0_i32_255 : BitVec 32 := 0#32
  let c1_i32_257 : BitVec 32 := 1#32
  let arg15 : BitVec 32 := Scf.iv c0_i32_255 c1_i32_257 k0_t2
  let v1443 : Index := Scalar.indexCast arg15
  let c464_1046 : Index := 464#32
  ![0, 1, v1443.toNat, 464]
def k0_off176 (k0_t2 : Fin k0_t2_loop.trips) : Fin 4 → Nat :=
  let c0_i32_1047 : BitVec 32 := 0#32
  let v1447 : Index := Scalar.indexCast c0_i32_1047
  let c1_i32_1048 : BitVec 32 := 1#32
  let v1448 : Index := Scalar.indexCast c1_i32_1048
  let c0_i32_255 : BitVec 32 := 0#32
  let c1_i32_257 : BitVec 32 := 1#32
  let arg15 : BitVec 32 := Scf.iv c0_i32_255 c1_i32_257 k0_t2
  let v1449 : Index := Scalar.indexCast arg15
  let c480_1049 : Index := 480#32
  ![0, 1, v1449.toNat, 480]
def k0_off177 (k0_t2 : Fin k0_t2_loop.trips) : Fin 4 → Nat :=
  let c0_i32_1050 : BitVec 32 := 0#32
  let v1453 : Index := Scalar.indexCast c0_i32_1050
  let c1_i32_1051 : BitVec 32 := 1#32
  let v1454 : Index := Scalar.indexCast c1_i32_1051
  let c0_i32_255 : BitVec 32 := 0#32
  let c1_i32_257 : BitVec 32 := 1#32
  let arg15 : BitVec 32 := Scf.iv c0_i32_255 c1_i32_257 k0_t2
  let v1455 : Index := Scalar.indexCast arg15
  let c480_1052 : Index := 480#32
  ![0, 1, v1455.toNat, 480]
def k0_off178 (k0_t2 : Fin k0_t2_loop.trips) : Fin 4 → Nat :=
  let c0_i32_1053 : BitVec 32 := 0#32
  let v1459 : Index := Scalar.indexCast c0_i32_1053
  let c1_i32_1054 : BitVec 32 := 1#32
  let v1460 : Index := Scalar.indexCast c1_i32_1054
  let c0_i32_255 : BitVec 32 := 0#32
  let c1_i32_257 : BitVec 32 := 1#32
  let arg15 : BitVec 32 := Scf.iv c0_i32_255 c1_i32_257 k0_t2
  let v1461 : Index := Scalar.indexCast arg15
  let c496_1055 : Index := 496#32
  ![0, 1, v1461.toNat, 496]
def k0_off179 (k0_t2 : Fin k0_t2_loop.trips) : Fin 4 → Nat :=
  let c0_i32_1056 : BitVec 32 := 0#32
  let v1465 : Index := Scalar.indexCast c0_i32_1056
  let c1_i32_1057 : BitVec 32 := 1#32
  let v1466 : Index := Scalar.indexCast c1_i32_1057
  let c0_i32_255 : BitVec 32 := 0#32
  let c1_i32_257 : BitVec 32 := 1#32
  let arg15 : BitVec 32 := Scf.iv c0_i32_255 c1_i32_257 k0_t2
  let v1467 : Index := Scalar.indexCast arg15
  let c496_1058 : Index := 496#32
  ![0, 1, v1467.toNat, 496]
def k0_off180 (k0_t2 : Fin k0_t2_loop.trips) : Fin 4 → Nat :=
  let c0_i32_1059 : BitVec 32 := 0#32
  let v1471 : Index := Scalar.indexCast c0_i32_1059
  let c2_i32_1060 : BitVec 32 := 2#32
  let v1472 : Index := Scalar.indexCast c2_i32_1060
  let c0_i32_255 : BitVec 32 := 0#32
  let c1_i32_257 : BitVec 32 := 1#32
  let arg15 : BitVec 32 := Scf.iv c0_i32_255 c1_i32_257 k0_t2
  let v1473 : Index := Scalar.indexCast arg15
  let c0_1061 : Index := 0#32
  ![0, 2, v1473.toNat, 0]
def k0_off181 (k0_t2 : Fin k0_t2_loop.trips) : Fin 4 → Nat :=
  let c0_i32_1062 : BitVec 32 := 0#32
  let v1477 : Index := Scalar.indexCast c0_i32_1062
  let c2_i32_1063 : BitVec 32 := 2#32
  let v1478 : Index := Scalar.indexCast c2_i32_1063
  let c0_i32_255 : BitVec 32 := 0#32
  let c1_i32_257 : BitVec 32 := 1#32
  let arg15 : BitVec 32 := Scf.iv c0_i32_255 c1_i32_257 k0_t2
  let v1479 : Index := Scalar.indexCast arg15
  let c0_1064 : Index := 0#32
  ![0, 2, v1479.toNat, 0]
def k0_off182 (k0_t2 : Fin k0_t2_loop.trips) : Fin 4 → Nat :=
  let c0_i32_1065 : BitVec 32 := 0#32
  let v1483 : Index := Scalar.indexCast c0_i32_1065
  let c2_i32_1066 : BitVec 32 := 2#32
  let v1484 : Index := Scalar.indexCast c2_i32_1066
  let c0_i32_255 : BitVec 32 := 0#32
  let c1_i32_257 : BitVec 32 := 1#32
  let arg15 : BitVec 32 := Scf.iv c0_i32_255 c1_i32_257 k0_t2
  let v1485 : Index := Scalar.indexCast arg15
  let c16_1067 : Index := 16#32
  ![0, 2, v1485.toNat, 16]
def k0_off183 (k0_t2 : Fin k0_t2_loop.trips) : Fin 4 → Nat :=
  let c0_i32_1068 : BitVec 32 := 0#32
  let v1489 : Index := Scalar.indexCast c0_i32_1068
  let c2_i32_1069 : BitVec 32 := 2#32
  let v1490 : Index := Scalar.indexCast c2_i32_1069
  let c0_i32_255 : BitVec 32 := 0#32
  let c1_i32_257 : BitVec 32 := 1#32
  let arg15 : BitVec 32 := Scf.iv c0_i32_255 c1_i32_257 k0_t2
  let v1491 : Index := Scalar.indexCast arg15
  let c16_1070 : Index := 16#32
  ![0, 2, v1491.toNat, 16]
def k0_off184 (k0_t2 : Fin k0_t2_loop.trips) : Fin 4 → Nat :=
  let c0_i32_1071 : BitVec 32 := 0#32
  let v1495 : Index := Scalar.indexCast c0_i32_1071
  let c2_i32_1072 : BitVec 32 := 2#32
  let v1496 : Index := Scalar.indexCast c2_i32_1072
  let c0_i32_255 : BitVec 32 := 0#32
  let c1_i32_257 : BitVec 32 := 1#32
  let arg15 : BitVec 32 := Scf.iv c0_i32_255 c1_i32_257 k0_t2
  let v1497 : Index := Scalar.indexCast arg15
  let c32_1073 : Index := 32#32
  ![0, 2, v1497.toNat, 32]
def k0_off185 (k0_t2 : Fin k0_t2_loop.trips) : Fin 4 → Nat :=
  let c0_i32_1074 : BitVec 32 := 0#32
  let v1501 : Index := Scalar.indexCast c0_i32_1074
  let c2_i32_1075 : BitVec 32 := 2#32
  let v1502 : Index := Scalar.indexCast c2_i32_1075
  let c0_i32_255 : BitVec 32 := 0#32
  let c1_i32_257 : BitVec 32 := 1#32
  let arg15 : BitVec 32 := Scf.iv c0_i32_255 c1_i32_257 k0_t2
  let v1503 : Index := Scalar.indexCast arg15
  let c32_1076 : Index := 32#32
  ![0, 2, v1503.toNat, 32]
def k0_off186 (k0_t2 : Fin k0_t2_loop.trips) : Fin 4 → Nat :=
  let c0_i32_1077 : BitVec 32 := 0#32
  let v1507 : Index := Scalar.indexCast c0_i32_1077
  let c2_i32_1078 : BitVec 32 := 2#32
  let v1508 : Index := Scalar.indexCast c2_i32_1078
  let c0_i32_255 : BitVec 32 := 0#32
  let c1_i32_257 : BitVec 32 := 1#32
  let arg15 : BitVec 32 := Scf.iv c0_i32_255 c1_i32_257 k0_t2
  let v1509 : Index := Scalar.indexCast arg15
  let c48_1079 : Index := 48#32
  ![0, 2, v1509.toNat, 48]
def k0_off187 (k0_t2 : Fin k0_t2_loop.trips) : Fin 4 → Nat :=
  let c0_i32_1080 : BitVec 32 := 0#32
  let v1513 : Index := Scalar.indexCast c0_i32_1080
  let c2_i32_1081 : BitVec 32 := 2#32
  let v1514 : Index := Scalar.indexCast c2_i32_1081
  let c0_i32_255 : BitVec 32 := 0#32
  let c1_i32_257 : BitVec 32 := 1#32
  let arg15 : BitVec 32 := Scf.iv c0_i32_255 c1_i32_257 k0_t2
  let v1515 : Index := Scalar.indexCast arg15
  let c48_1082 : Index := 48#32
  ![0, 2, v1515.toNat, 48]
def k0_off188 (k0_t2 : Fin k0_t2_loop.trips) : Fin 4 → Nat :=
  let c0_i32_1083 : BitVec 32 := 0#32
  let v1519 : Index := Scalar.indexCast c0_i32_1083
  let c2_i32_1084 : BitVec 32 := 2#32
  let v1520 : Index := Scalar.indexCast c2_i32_1084
  let c0_i32_255 : BitVec 32 := 0#32
  let c1_i32_257 : BitVec 32 := 1#32
  let arg15 : BitVec 32 := Scf.iv c0_i32_255 c1_i32_257 k0_t2
  let v1521 : Index := Scalar.indexCast arg15
  let c64_1085 : Index := 64#32
  ![0, 2, v1521.toNat, 64]
def k0_off189 (k0_t2 : Fin k0_t2_loop.trips) : Fin 4 → Nat :=
  let c0_i32_1086 : BitVec 32 := 0#32
  let v1525 : Index := Scalar.indexCast c0_i32_1086
  let c2_i32_1087 : BitVec 32 := 2#32
  let v1526 : Index := Scalar.indexCast c2_i32_1087
  let c0_i32_255 : BitVec 32 := 0#32
  let c1_i32_257 : BitVec 32 := 1#32
  let arg15 : BitVec 32 := Scf.iv c0_i32_255 c1_i32_257 k0_t2
  let v1527 : Index := Scalar.indexCast arg15
  let c64_1088 : Index := 64#32
  ![0, 2, v1527.toNat, 64]
def k0_off190 (k0_t2 : Fin k0_t2_loop.trips) : Fin 4 → Nat :=
  let c0_i32_1089 : BitVec 32 := 0#32
  let v1531 : Index := Scalar.indexCast c0_i32_1089
  let c2_i32_1090 : BitVec 32 := 2#32
  let v1532 : Index := Scalar.indexCast c2_i32_1090
  let c0_i32_255 : BitVec 32 := 0#32
  let c1_i32_257 : BitVec 32 := 1#32
  let arg15 : BitVec 32 := Scf.iv c0_i32_255 c1_i32_257 k0_t2
  let v1533 : Index := Scalar.indexCast arg15
  let c80_1091 : Index := 80#32
  ![0, 2, v1533.toNat, 80]
def k0_off191 (k0_t2 : Fin k0_t2_loop.trips) : Fin 4 → Nat :=
  let c0_i32_1092 : BitVec 32 := 0#32
  let v1537 : Index := Scalar.indexCast c0_i32_1092
  let c2_i32_1093 : BitVec 32 := 2#32
  let v1538 : Index := Scalar.indexCast c2_i32_1093
  let c0_i32_255 : BitVec 32 := 0#32
  let c1_i32_257 : BitVec 32 := 1#32
  let arg15 : BitVec 32 := Scf.iv c0_i32_255 c1_i32_257 k0_t2
  let v1539 : Index := Scalar.indexCast arg15
  let c80_1094 : Index := 80#32
  ![0, 2, v1539.toNat, 80]
def k0_off192 (k0_t2 : Fin k0_t2_loop.trips) : Fin 4 → Nat :=
  let c0_i32_1095 : BitVec 32 := 0#32
  let v1543 : Index := Scalar.indexCast c0_i32_1095
  let c2_i32_1096 : BitVec 32 := 2#32
  let v1544 : Index := Scalar.indexCast c2_i32_1096
  let c0_i32_255 : BitVec 32 := 0#32
  let c1_i32_257 : BitVec 32 := 1#32
  let arg15 : BitVec 32 := Scf.iv c0_i32_255 c1_i32_257 k0_t2
  let v1545 : Index := Scalar.indexCast arg15
  let c96_1097 : Index := 96#32
  ![0, 2, v1545.toNat, 96]
def k0_off193 (k0_t2 : Fin k0_t2_loop.trips) : Fin 4 → Nat :=
  let c0_i32_1098 : BitVec 32 := 0#32
  let v1549 : Index := Scalar.indexCast c0_i32_1098
  let c2_i32_1099 : BitVec 32 := 2#32
  let v1550 : Index := Scalar.indexCast c2_i32_1099
  let c0_i32_255 : BitVec 32 := 0#32
  let c1_i32_257 : BitVec 32 := 1#32
  let arg15 : BitVec 32 := Scf.iv c0_i32_255 c1_i32_257 k0_t2
  let v1551 : Index := Scalar.indexCast arg15
  let c96_1100 : Index := 96#32
  ![0, 2, v1551.toNat, 96]
def k0_off194 (k0_t2 : Fin k0_t2_loop.trips) : Fin 4 → Nat :=
  let c0_i32_1101 : BitVec 32 := 0#32
  let v1555 : Index := Scalar.indexCast c0_i32_1101
  let c2_i32_1102 : BitVec 32 := 2#32
  let v1556 : Index := Scalar.indexCast c2_i32_1102
  let c0_i32_255 : BitVec 32 := 0#32
  let c1_i32_257 : BitVec 32 := 1#32
  let arg15 : BitVec 32 := Scf.iv c0_i32_255 c1_i32_257 k0_t2
  let v1557 : Index := Scalar.indexCast arg15
  let c112_1103 : Index := 112#32
  ![0, 2, v1557.toNat, 112]
def k0_off195 (k0_t2 : Fin k0_t2_loop.trips) : Fin 4 → Nat :=
  let c0_i32_1104 : BitVec 32 := 0#32
  let v1561 : Index := Scalar.indexCast c0_i32_1104
  let c2_i32_1105 : BitVec 32 := 2#32
  let v1562 : Index := Scalar.indexCast c2_i32_1105
  let c0_i32_255 : BitVec 32 := 0#32
  let c1_i32_257 : BitVec 32 := 1#32
  let arg15 : BitVec 32 := Scf.iv c0_i32_255 c1_i32_257 k0_t2
  let v1563 : Index := Scalar.indexCast arg15
  let c112_1106 : Index := 112#32
  ![0, 2, v1563.toNat, 112]
def k0_off196 (k0_t2 : Fin k0_t2_loop.trips) : Fin 4 → Nat :=
  let c0_i32_1107 : BitVec 32 := 0#32
  let v1567 : Index := Scalar.indexCast c0_i32_1107
  let c2_i32_1108 : BitVec 32 := 2#32
  let v1568 : Index := Scalar.indexCast c2_i32_1108
  let c0_i32_255 : BitVec 32 := 0#32
  let c1_i32_257 : BitVec 32 := 1#32
  let arg15 : BitVec 32 := Scf.iv c0_i32_255 c1_i32_257 k0_t2
  let v1569 : Index := Scalar.indexCast arg15
  let c128_1109 : Index := 128#32
  ![0, 2, v1569.toNat, 128]
def k0_off197 (k0_t2 : Fin k0_t2_loop.trips) : Fin 4 → Nat :=
  let c0_i32_1110 : BitVec 32 := 0#32
  let v1573 : Index := Scalar.indexCast c0_i32_1110
  let c2_i32_1111 : BitVec 32 := 2#32
  let v1574 : Index := Scalar.indexCast c2_i32_1111
  let c0_i32_255 : BitVec 32 := 0#32
  let c1_i32_257 : BitVec 32 := 1#32
  let arg15 : BitVec 32 := Scf.iv c0_i32_255 c1_i32_257 k0_t2
  let v1575 : Index := Scalar.indexCast arg15
  let c128_1112 : Index := 128#32
  ![0, 2, v1575.toNat, 128]
def k0_off198 (k0_t2 : Fin k0_t2_loop.trips) : Fin 4 → Nat :=
  let c0_i32_1113 : BitVec 32 := 0#32
  let v1579 : Index := Scalar.indexCast c0_i32_1113
  let c2_i32_1114 : BitVec 32 := 2#32
  let v1580 : Index := Scalar.indexCast c2_i32_1114
  let c0_i32_255 : BitVec 32 := 0#32
  let c1_i32_257 : BitVec 32 := 1#32
  let arg15 : BitVec 32 := Scf.iv c0_i32_255 c1_i32_257 k0_t2
  let v1581 : Index := Scalar.indexCast arg15
  let c144_1115 : Index := 144#32
  ![0, 2, v1581.toNat, 144]
def k0_off199 (k0_t2 : Fin k0_t2_loop.trips) : Fin 4 → Nat :=
  let c0_i32_1116 : BitVec 32 := 0#32
  let v1585 : Index := Scalar.indexCast c0_i32_1116
  let c2_i32_1117 : BitVec 32 := 2#32
  let v1586 : Index := Scalar.indexCast c2_i32_1117
  let c0_i32_255 : BitVec 32 := 0#32
  let c1_i32_257 : BitVec 32 := 1#32
  let arg15 : BitVec 32 := Scf.iv c0_i32_255 c1_i32_257 k0_t2
  let v1587 : Index := Scalar.indexCast arg15
  let c144_1118 : Index := 144#32
  ![0, 2, v1587.toNat, 144]
def k0_off200 (k0_t2 : Fin k0_t2_loop.trips) : Fin 4 → Nat :=
  let c0_i32_1119 : BitVec 32 := 0#32
  let v1591 : Index := Scalar.indexCast c0_i32_1119
  let c2_i32_1120 : BitVec 32 := 2#32
  let v1592 : Index := Scalar.indexCast c2_i32_1120
  let c0_i32_255 : BitVec 32 := 0#32
  let c1_i32_257 : BitVec 32 := 1#32
  let arg15 : BitVec 32 := Scf.iv c0_i32_255 c1_i32_257 k0_t2
  let v1593 : Index := Scalar.indexCast arg15
  let c160_1121 : Index := 160#32
  ![0, 2, v1593.toNat, 160]
def k0_off201 (k0_t2 : Fin k0_t2_loop.trips) : Fin 4 → Nat :=
  let c0_i32_1122 : BitVec 32 := 0#32
  let v1597 : Index := Scalar.indexCast c0_i32_1122
  let c2_i32_1123 : BitVec 32 := 2#32
  let v1598 : Index := Scalar.indexCast c2_i32_1123
  let c0_i32_255 : BitVec 32 := 0#32
  let c1_i32_257 : BitVec 32 := 1#32
  let arg15 : BitVec 32 := Scf.iv c0_i32_255 c1_i32_257 k0_t2
  let v1599 : Index := Scalar.indexCast arg15
  let c160_1124 : Index := 160#32
  ![0, 2, v1599.toNat, 160]
def k0_off202 (k0_t2 : Fin k0_t2_loop.trips) : Fin 4 → Nat :=
  let c0_i32_1125 : BitVec 32 := 0#32
  let v1603 : Index := Scalar.indexCast c0_i32_1125
  let c2_i32_1126 : BitVec 32 := 2#32
  let v1604 : Index := Scalar.indexCast c2_i32_1126
  let c0_i32_255 : BitVec 32 := 0#32
  let c1_i32_257 : BitVec 32 := 1#32
  let arg15 : BitVec 32 := Scf.iv c0_i32_255 c1_i32_257 k0_t2
  let v1605 : Index := Scalar.indexCast arg15
  let c176_1127 : Index := 176#32
  ![0, 2, v1605.toNat, 176]
def k0_off203 (k0_t2 : Fin k0_t2_loop.trips) : Fin 4 → Nat :=
  let c0_i32_1128 : BitVec 32 := 0#32
  let v1609 : Index := Scalar.indexCast c0_i32_1128
  let c2_i32_1129 : BitVec 32 := 2#32
  let v1610 : Index := Scalar.indexCast c2_i32_1129
  let c0_i32_255 : BitVec 32 := 0#32
  let c1_i32_257 : BitVec 32 := 1#32
  let arg15 : BitVec 32 := Scf.iv c0_i32_255 c1_i32_257 k0_t2
  let v1611 : Index := Scalar.indexCast arg15
  let c176_1130 : Index := 176#32
  ![0, 2, v1611.toNat, 176]
def k0_off204 (k0_t2 : Fin k0_t2_loop.trips) : Fin 4 → Nat :=
  let c0_i32_1131 : BitVec 32 := 0#32
  let v1615 : Index := Scalar.indexCast c0_i32_1131
  let c2_i32_1132 : BitVec 32 := 2#32
  let v1616 : Index := Scalar.indexCast c2_i32_1132
  let c0_i32_255 : BitVec 32 := 0#32
  let c1_i32_257 : BitVec 32 := 1#32
  let arg15 : BitVec 32 := Scf.iv c0_i32_255 c1_i32_257 k0_t2
  let v1617 : Index := Scalar.indexCast arg15
  let c192_1133 : Index := 192#32
  ![0, 2, v1617.toNat, 192]
def k0_off205 (k0_t2 : Fin k0_t2_loop.trips) : Fin 4 → Nat :=
  let c0_i32_1134 : BitVec 32 := 0#32
  let v1621 : Index := Scalar.indexCast c0_i32_1134
  let c2_i32_1135 : BitVec 32 := 2#32
  let v1622 : Index := Scalar.indexCast c2_i32_1135
  let c0_i32_255 : BitVec 32 := 0#32
  let c1_i32_257 : BitVec 32 := 1#32
  let arg15 : BitVec 32 := Scf.iv c0_i32_255 c1_i32_257 k0_t2
  let v1623 : Index := Scalar.indexCast arg15
  let c192_1136 : Index := 192#32
  ![0, 2, v1623.toNat, 192]
def k0_off206 (k0_t2 : Fin k0_t2_loop.trips) : Fin 4 → Nat :=
  let c0_i32_1137 : BitVec 32 := 0#32
  let v1627 : Index := Scalar.indexCast c0_i32_1137
  let c2_i32_1138 : BitVec 32 := 2#32
  let v1628 : Index := Scalar.indexCast c2_i32_1138
  let c0_i32_255 : BitVec 32 := 0#32
  let c1_i32_257 : BitVec 32 := 1#32
  let arg15 : BitVec 32 := Scf.iv c0_i32_255 c1_i32_257 k0_t2
  let v1629 : Index := Scalar.indexCast arg15
  let c208_1139 : Index := 208#32
  ![0, 2, v1629.toNat, 208]
def k0_off207 (k0_t2 : Fin k0_t2_loop.trips) : Fin 4 → Nat :=
  let c0_i32_1140 : BitVec 32 := 0#32
  let v1633 : Index := Scalar.indexCast c0_i32_1140
  let c2_i32_1141 : BitVec 32 := 2#32
  let v1634 : Index := Scalar.indexCast c2_i32_1141
  let c0_i32_255 : BitVec 32 := 0#32
  let c1_i32_257 : BitVec 32 := 1#32
  let arg15 : BitVec 32 := Scf.iv c0_i32_255 c1_i32_257 k0_t2
  let v1635 : Index := Scalar.indexCast arg15
  let c208_1142 : Index := 208#32
  ![0, 2, v1635.toNat, 208]
def k0_off208 (k0_t2 : Fin k0_t2_loop.trips) : Fin 4 → Nat :=
  let c0_i32_1143 : BitVec 32 := 0#32
  let v1639 : Index := Scalar.indexCast c0_i32_1143
  let c2_i32_1144 : BitVec 32 := 2#32
  let v1640 : Index := Scalar.indexCast c2_i32_1144
  let c0_i32_255 : BitVec 32 := 0#32
  let c1_i32_257 : BitVec 32 := 1#32
  let arg15 : BitVec 32 := Scf.iv c0_i32_255 c1_i32_257 k0_t2
  let v1641 : Index := Scalar.indexCast arg15
  let c224_1145 : Index := 224#32
  ![0, 2, v1641.toNat, 224]
def k0_off209 (k0_t2 : Fin k0_t2_loop.trips) : Fin 4 → Nat :=
  let c0_i32_1146 : BitVec 32 := 0#32
  let v1645 : Index := Scalar.indexCast c0_i32_1146
  let c2_i32_1147 : BitVec 32 := 2#32
  let v1646 : Index := Scalar.indexCast c2_i32_1147
  let c0_i32_255 : BitVec 32 := 0#32
  let c1_i32_257 : BitVec 32 := 1#32
  let arg15 : BitVec 32 := Scf.iv c0_i32_255 c1_i32_257 k0_t2
  let v1647 : Index := Scalar.indexCast arg15
  let c224_1148 : Index := 224#32
  ![0, 2, v1647.toNat, 224]
def k0_off210 (k0_t2 : Fin k0_t2_loop.trips) : Fin 4 → Nat :=
  let c0_i32_1149 : BitVec 32 := 0#32
  let v1651 : Index := Scalar.indexCast c0_i32_1149
  let c2_i32_1150 : BitVec 32 := 2#32
  let v1652 : Index := Scalar.indexCast c2_i32_1150
  let c0_i32_255 : BitVec 32 := 0#32
  let c1_i32_257 : BitVec 32 := 1#32
  let arg15 : BitVec 32 := Scf.iv c0_i32_255 c1_i32_257 k0_t2
  let v1653 : Index := Scalar.indexCast arg15
  let c240_1151 : Index := 240#32
  ![0, 2, v1653.toNat, 240]
def k0_off211 (k0_t2 : Fin k0_t2_loop.trips) : Fin 4 → Nat :=
  let c0_i32_1152 : BitVec 32 := 0#32
  let v1657 : Index := Scalar.indexCast c0_i32_1152
  let c2_i32_1153 : BitVec 32 := 2#32
  let v1658 : Index := Scalar.indexCast c2_i32_1153
  let c0_i32_255 : BitVec 32 := 0#32
  let c1_i32_257 : BitVec 32 := 1#32
  let arg15 : BitVec 32 := Scf.iv c0_i32_255 c1_i32_257 k0_t2
  let v1659 : Index := Scalar.indexCast arg15
  let c240_1154 : Index := 240#32
  ![0, 2, v1659.toNat, 240]
def k0_off212 (k0_t2 : Fin k0_t2_loop.trips) : Fin 4 → Nat :=
  let c0_i32_1155 : BitVec 32 := 0#32
  let v1663 : Index := Scalar.indexCast c0_i32_1155
  let c2_i32_1156 : BitVec 32 := 2#32
  let v1664 : Index := Scalar.indexCast c2_i32_1156
  let c0_i32_255 : BitVec 32 := 0#32
  let c1_i32_257 : BitVec 32 := 1#32
  let arg15 : BitVec 32 := Scf.iv c0_i32_255 c1_i32_257 k0_t2
  let v1665 : Index := Scalar.indexCast arg15
  let c256_1157 : Index := 256#32
  ![0, 2, v1665.toNat, 256]
def k0_off213 (k0_t2 : Fin k0_t2_loop.trips) : Fin 4 → Nat :=
  let c0_i32_1158 : BitVec 32 := 0#32
  let v1669 : Index := Scalar.indexCast c0_i32_1158
  let c2_i32_1159 : BitVec 32 := 2#32
  let v1670 : Index := Scalar.indexCast c2_i32_1159
  let c0_i32_255 : BitVec 32 := 0#32
  let c1_i32_257 : BitVec 32 := 1#32
  let arg15 : BitVec 32 := Scf.iv c0_i32_255 c1_i32_257 k0_t2
  let v1671 : Index := Scalar.indexCast arg15
  let c256_1160 : Index := 256#32
  ![0, 2, v1671.toNat, 256]
def k0_off214 (k0_t2 : Fin k0_t2_loop.trips) : Fin 4 → Nat :=
  let c0_i32_1161 : BitVec 32 := 0#32
  let v1675 : Index := Scalar.indexCast c0_i32_1161
  let c2_i32_1162 : BitVec 32 := 2#32
  let v1676 : Index := Scalar.indexCast c2_i32_1162
  let c0_i32_255 : BitVec 32 := 0#32
  let c1_i32_257 : BitVec 32 := 1#32
  let arg15 : BitVec 32 := Scf.iv c0_i32_255 c1_i32_257 k0_t2
  let v1677 : Index := Scalar.indexCast arg15
  let c272_1163 : Index := 272#32
  ![0, 2, v1677.toNat, 272]
def k0_off215 (k0_t2 : Fin k0_t2_loop.trips) : Fin 4 → Nat :=
  let c0_i32_1164 : BitVec 32 := 0#32
  let v1681 : Index := Scalar.indexCast c0_i32_1164
  let c2_i32_1165 : BitVec 32 := 2#32
  let v1682 : Index := Scalar.indexCast c2_i32_1165
  let c0_i32_255 : BitVec 32 := 0#32
  let c1_i32_257 : BitVec 32 := 1#32
  let arg15 : BitVec 32 := Scf.iv c0_i32_255 c1_i32_257 k0_t2
  let v1683 : Index := Scalar.indexCast arg15
  let c272_1166 : Index := 272#32
  ![0, 2, v1683.toNat, 272]
def k0_off216 (k0_t2 : Fin k0_t2_loop.trips) : Fin 4 → Nat :=
  let c0_i32_1167 : BitVec 32 := 0#32
  let v1687 : Index := Scalar.indexCast c0_i32_1167
  let c2_i32_1168 : BitVec 32 := 2#32
  let v1688 : Index := Scalar.indexCast c2_i32_1168
  let c0_i32_255 : BitVec 32 := 0#32
  let c1_i32_257 : BitVec 32 := 1#32
  let arg15 : BitVec 32 := Scf.iv c0_i32_255 c1_i32_257 k0_t2
  let v1689 : Index := Scalar.indexCast arg15
  let c288_1169 : Index := 288#32
  ![0, 2, v1689.toNat, 288]
def k0_off217 (k0_t2 : Fin k0_t2_loop.trips) : Fin 4 → Nat :=
  let c0_i32_1170 : BitVec 32 := 0#32
  let v1693 : Index := Scalar.indexCast c0_i32_1170
  let c2_i32_1171 : BitVec 32 := 2#32
  let v1694 : Index := Scalar.indexCast c2_i32_1171
  let c0_i32_255 : BitVec 32 := 0#32
  let c1_i32_257 : BitVec 32 := 1#32
  let arg15 : BitVec 32 := Scf.iv c0_i32_255 c1_i32_257 k0_t2
  let v1695 : Index := Scalar.indexCast arg15
  let c288_1172 : Index := 288#32
  ![0, 2, v1695.toNat, 288]
def k0_off218 (k0_t2 : Fin k0_t2_loop.trips) : Fin 4 → Nat :=
  let c0_i32_1173 : BitVec 32 := 0#32
  let v1699 : Index := Scalar.indexCast c0_i32_1173
  let c2_i32_1174 : BitVec 32 := 2#32
  let v1700 : Index := Scalar.indexCast c2_i32_1174
  let c0_i32_255 : BitVec 32 := 0#32
  let c1_i32_257 : BitVec 32 := 1#32
  let arg15 : BitVec 32 := Scf.iv c0_i32_255 c1_i32_257 k0_t2
  let v1701 : Index := Scalar.indexCast arg15
  let c304_1175 : Index := 304#32
  ![0, 2, v1701.toNat, 304]
def k0_off219 (k0_t2 : Fin k0_t2_loop.trips) : Fin 4 → Nat :=
  let c0_i32_1176 : BitVec 32 := 0#32
  let v1705 : Index := Scalar.indexCast c0_i32_1176
  let c2_i32_1177 : BitVec 32 := 2#32
  let v1706 : Index := Scalar.indexCast c2_i32_1177
  let c0_i32_255 : BitVec 32 := 0#32
  let c1_i32_257 : BitVec 32 := 1#32
  let arg15 : BitVec 32 := Scf.iv c0_i32_255 c1_i32_257 k0_t2
  let v1707 : Index := Scalar.indexCast arg15
  let c304_1178 : Index := 304#32
  ![0, 2, v1707.toNat, 304]
def k0_off220 (k0_t2 : Fin k0_t2_loop.trips) : Fin 4 → Nat :=
  let c0_i32_1179 : BitVec 32 := 0#32
  let v1711 : Index := Scalar.indexCast c0_i32_1179
  let c2_i32_1180 : BitVec 32 := 2#32
  let v1712 : Index := Scalar.indexCast c2_i32_1180
  let c0_i32_255 : BitVec 32 := 0#32
  let c1_i32_257 : BitVec 32 := 1#32
  let arg15 : BitVec 32 := Scf.iv c0_i32_255 c1_i32_257 k0_t2
  let v1713 : Index := Scalar.indexCast arg15
  let c320_1181 : Index := 320#32
  ![0, 2, v1713.toNat, 320]
def k0_off221 (k0_t2 : Fin k0_t2_loop.trips) : Fin 4 → Nat :=
  let c0_i32_1182 : BitVec 32 := 0#32
  let v1717 : Index := Scalar.indexCast c0_i32_1182
  let c2_i32_1183 : BitVec 32 := 2#32
  let v1718 : Index := Scalar.indexCast c2_i32_1183
  let c0_i32_255 : BitVec 32 := 0#32
  let c1_i32_257 : BitVec 32 := 1#32
  let arg15 : BitVec 32 := Scf.iv c0_i32_255 c1_i32_257 k0_t2
  let v1719 : Index := Scalar.indexCast arg15
  let c320_1184 : Index := 320#32
  ![0, 2, v1719.toNat, 320]
def k0_off222 (k0_t2 : Fin k0_t2_loop.trips) : Fin 4 → Nat :=
  let c0_i32_1185 : BitVec 32 := 0#32
  let v1723 : Index := Scalar.indexCast c0_i32_1185
  let c2_i32_1186 : BitVec 32 := 2#32
  let v1724 : Index := Scalar.indexCast c2_i32_1186
  let c0_i32_255 : BitVec 32 := 0#32
  let c1_i32_257 : BitVec 32 := 1#32
  let arg15 : BitVec 32 := Scf.iv c0_i32_255 c1_i32_257 k0_t2
  let v1725 : Index := Scalar.indexCast arg15
  let c336_1187 : Index := 336#32
  ![0, 2, v1725.toNat, 336]
def k0_off223 (k0_t2 : Fin k0_t2_loop.trips) : Fin 4 → Nat :=
  let c0_i32_1188 : BitVec 32 := 0#32
  let v1729 : Index := Scalar.indexCast c0_i32_1188
  let c2_i32_1189 : BitVec 32 := 2#32
  let v1730 : Index := Scalar.indexCast c2_i32_1189
  let c0_i32_255 : BitVec 32 := 0#32
  let c1_i32_257 : BitVec 32 := 1#32
  let arg15 : BitVec 32 := Scf.iv c0_i32_255 c1_i32_257 k0_t2
  let v1731 : Index := Scalar.indexCast arg15
  let c336_1190 : Index := 336#32
  ![0, 2, v1731.toNat, 336]
def k0_off224 (k0_t2 : Fin k0_t2_loop.trips) : Fin 4 → Nat :=
  let c0_i32_1191 : BitVec 32 := 0#32
  let v1735 : Index := Scalar.indexCast c0_i32_1191
  let c2_i32_1192 : BitVec 32 := 2#32
  let v1736 : Index := Scalar.indexCast c2_i32_1192
  let c0_i32_255 : BitVec 32 := 0#32
  let c1_i32_257 : BitVec 32 := 1#32
  let arg15 : BitVec 32 := Scf.iv c0_i32_255 c1_i32_257 k0_t2
  let v1737 : Index := Scalar.indexCast arg15
  let c352_1193 : Index := 352#32
  ![0, 2, v1737.toNat, 352]
def k0_off225 (k0_t2 : Fin k0_t2_loop.trips) : Fin 4 → Nat :=
  let c0_i32_1194 : BitVec 32 := 0#32
  let v1741 : Index := Scalar.indexCast c0_i32_1194
  let c2_i32_1195 : BitVec 32 := 2#32
  let v1742 : Index := Scalar.indexCast c2_i32_1195
  let c0_i32_255 : BitVec 32 := 0#32
  let c1_i32_257 : BitVec 32 := 1#32
  let arg15 : BitVec 32 := Scf.iv c0_i32_255 c1_i32_257 k0_t2
  let v1743 : Index := Scalar.indexCast arg15
  let c352_1196 : Index := 352#32
  ![0, 2, v1743.toNat, 352]
def k0_off226 (k0_t2 : Fin k0_t2_loop.trips) : Fin 4 → Nat :=
  let c0_i32_1197 : BitVec 32 := 0#32
  let v1747 : Index := Scalar.indexCast c0_i32_1197
  let c2_i32_1198 : BitVec 32 := 2#32
  let v1748 : Index := Scalar.indexCast c2_i32_1198
  let c0_i32_255 : BitVec 32 := 0#32
  let c1_i32_257 : BitVec 32 := 1#32
  let arg15 : BitVec 32 := Scf.iv c0_i32_255 c1_i32_257 k0_t2
  let v1749 : Index := Scalar.indexCast arg15
  let c368_1199 : Index := 368#32
  ![0, 2, v1749.toNat, 368]
def k0_off227 (k0_t2 : Fin k0_t2_loop.trips) : Fin 4 → Nat :=
  let c0_i32_1200 : BitVec 32 := 0#32
  let v1753 : Index := Scalar.indexCast c0_i32_1200
  let c2_i32_1201 : BitVec 32 := 2#32
  let v1754 : Index := Scalar.indexCast c2_i32_1201
  let c0_i32_255 : BitVec 32 := 0#32
  let c1_i32_257 : BitVec 32 := 1#32
  let arg15 : BitVec 32 := Scf.iv c0_i32_255 c1_i32_257 k0_t2
  let v1755 : Index := Scalar.indexCast arg15
  let c368_1202 : Index := 368#32
  ![0, 2, v1755.toNat, 368]
def k0_off228 (k0_t2 : Fin k0_t2_loop.trips) : Fin 4 → Nat :=
  let c0_i32_1203 : BitVec 32 := 0#32
  let v1759 : Index := Scalar.indexCast c0_i32_1203
  let c2_i32_1204 : BitVec 32 := 2#32
  let v1760 : Index := Scalar.indexCast c2_i32_1204
  let c0_i32_255 : BitVec 32 := 0#32
  let c1_i32_257 : BitVec 32 := 1#32
  let arg15 : BitVec 32 := Scf.iv c0_i32_255 c1_i32_257 k0_t2
  let v1761 : Index := Scalar.indexCast arg15
  let c384_1205 : Index := 384#32
  ![0, 2, v1761.toNat, 384]
def k0_off229 (k0_t2 : Fin k0_t2_loop.trips) : Fin 4 → Nat :=
  let c0_i32_1206 : BitVec 32 := 0#32
  let v1765 : Index := Scalar.indexCast c0_i32_1206
  let c2_i32_1207 : BitVec 32 := 2#32
  let v1766 : Index := Scalar.indexCast c2_i32_1207
  let c0_i32_255 : BitVec 32 := 0#32
  let c1_i32_257 : BitVec 32 := 1#32
  let arg15 : BitVec 32 := Scf.iv c0_i32_255 c1_i32_257 k0_t2
  let v1767 : Index := Scalar.indexCast arg15
  let c384_1208 : Index := 384#32
  ![0, 2, v1767.toNat, 384]
def k0_off230 (k0_t2 : Fin k0_t2_loop.trips) : Fin 4 → Nat :=
  let c0_i32_1209 : BitVec 32 := 0#32
  let v1771 : Index := Scalar.indexCast c0_i32_1209
  let c2_i32_1210 : BitVec 32 := 2#32
  let v1772 : Index := Scalar.indexCast c2_i32_1210
  let c0_i32_255 : BitVec 32 := 0#32
  let c1_i32_257 : BitVec 32 := 1#32
  let arg15 : BitVec 32 := Scf.iv c0_i32_255 c1_i32_257 k0_t2
  let v1773 : Index := Scalar.indexCast arg15
  let c400_1211 : Index := 400#32
  ![0, 2, v1773.toNat, 400]
def k0_off231 (k0_t2 : Fin k0_t2_loop.trips) : Fin 4 → Nat :=
  let c0_i32_1212 : BitVec 32 := 0#32
  let v1777 : Index := Scalar.indexCast c0_i32_1212
  let c2_i32_1213 : BitVec 32 := 2#32
  let v1778 : Index := Scalar.indexCast c2_i32_1213
  let c0_i32_255 : BitVec 32 := 0#32
  let c1_i32_257 : BitVec 32 := 1#32
  let arg15 : BitVec 32 := Scf.iv c0_i32_255 c1_i32_257 k0_t2
  let v1779 : Index := Scalar.indexCast arg15
  let c400_1214 : Index := 400#32
  ![0, 2, v1779.toNat, 400]
def k0_off232 (k0_t2 : Fin k0_t2_loop.trips) : Fin 4 → Nat :=
  let c0_i32_1215 : BitVec 32 := 0#32
  let v1783 : Index := Scalar.indexCast c0_i32_1215
  let c2_i32_1216 : BitVec 32 := 2#32
  let v1784 : Index := Scalar.indexCast c2_i32_1216
  let c0_i32_255 : BitVec 32 := 0#32
  let c1_i32_257 : BitVec 32 := 1#32
  let arg15 : BitVec 32 := Scf.iv c0_i32_255 c1_i32_257 k0_t2
  let v1785 : Index := Scalar.indexCast arg15
  let c416_1217 : Index := 416#32
  ![0, 2, v1785.toNat, 416]
def k0_off233 (k0_t2 : Fin k0_t2_loop.trips) : Fin 4 → Nat :=
  let c0_i32_1218 : BitVec 32 := 0#32
  let v1789 : Index := Scalar.indexCast c0_i32_1218
  let c2_i32_1219 : BitVec 32 := 2#32
  let v1790 : Index := Scalar.indexCast c2_i32_1219
  let c0_i32_255 : BitVec 32 := 0#32
  let c1_i32_257 : BitVec 32 := 1#32
  let arg15 : BitVec 32 := Scf.iv c0_i32_255 c1_i32_257 k0_t2
  let v1791 : Index := Scalar.indexCast arg15
  let c416_1220 : Index := 416#32
  ![0, 2, v1791.toNat, 416]
def k0_off234 (k0_t2 : Fin k0_t2_loop.trips) : Fin 4 → Nat :=
  let c0_i32_1221 : BitVec 32 := 0#32
  let v1795 : Index := Scalar.indexCast c0_i32_1221
  let c2_i32_1222 : BitVec 32 := 2#32
  let v1796 : Index := Scalar.indexCast c2_i32_1222
  let c0_i32_255 : BitVec 32 := 0#32
  let c1_i32_257 : BitVec 32 := 1#32
  let arg15 : BitVec 32 := Scf.iv c0_i32_255 c1_i32_257 k0_t2
  let v1797 : Index := Scalar.indexCast arg15
  let c432_1223 : Index := 432#32
  ![0, 2, v1797.toNat, 432]
def k0_off235 (k0_t2 : Fin k0_t2_loop.trips) : Fin 4 → Nat :=
  let c0_i32_1224 : BitVec 32 := 0#32
  let v1801 : Index := Scalar.indexCast c0_i32_1224
  let c2_i32_1225 : BitVec 32 := 2#32
  let v1802 : Index := Scalar.indexCast c2_i32_1225
  let c0_i32_255 : BitVec 32 := 0#32
  let c1_i32_257 : BitVec 32 := 1#32
  let arg15 : BitVec 32 := Scf.iv c0_i32_255 c1_i32_257 k0_t2
  let v1803 : Index := Scalar.indexCast arg15
  let c432_1226 : Index := 432#32
  ![0, 2, v1803.toNat, 432]
def k0_off236 (k0_t2 : Fin k0_t2_loop.trips) : Fin 4 → Nat :=
  let c0_i32_1227 : BitVec 32 := 0#32
  let v1807 : Index := Scalar.indexCast c0_i32_1227
  let c2_i32_1228 : BitVec 32 := 2#32
  let v1808 : Index := Scalar.indexCast c2_i32_1228
  let c0_i32_255 : BitVec 32 := 0#32
  let c1_i32_257 : BitVec 32 := 1#32
  let arg15 : BitVec 32 := Scf.iv c0_i32_255 c1_i32_257 k0_t2
  let v1809 : Index := Scalar.indexCast arg15
  let c448_1229 : Index := 448#32
  ![0, 2, v1809.toNat, 448]
def k0_off237 (k0_t2 : Fin k0_t2_loop.trips) : Fin 4 → Nat :=
  let c0_i32_1230 : BitVec 32 := 0#32
  let v1813 : Index := Scalar.indexCast c0_i32_1230
  let c2_i32_1231 : BitVec 32 := 2#32
  let v1814 : Index := Scalar.indexCast c2_i32_1231
  let c0_i32_255 : BitVec 32 := 0#32
  let c1_i32_257 : BitVec 32 := 1#32
  let arg15 : BitVec 32 := Scf.iv c0_i32_255 c1_i32_257 k0_t2
  let v1815 : Index := Scalar.indexCast arg15
  let c448_1232 : Index := 448#32
  ![0, 2, v1815.toNat, 448]
def k0_off238 (k0_t2 : Fin k0_t2_loop.trips) : Fin 4 → Nat :=
  let c0_i32_1233 : BitVec 32 := 0#32
  let v1819 : Index := Scalar.indexCast c0_i32_1233
  let c2_i32_1234 : BitVec 32 := 2#32
  let v1820 : Index := Scalar.indexCast c2_i32_1234
  let c0_i32_255 : BitVec 32 := 0#32
  let c1_i32_257 : BitVec 32 := 1#32
  let arg15 : BitVec 32 := Scf.iv c0_i32_255 c1_i32_257 k0_t2
  let v1821 : Index := Scalar.indexCast arg15
  let c464_1235 : Index := 464#32
  ![0, 2, v1821.toNat, 464]
def k0_off239 (k0_t2 : Fin k0_t2_loop.trips) : Fin 4 → Nat :=
  let c0_i32_1236 : BitVec 32 := 0#32
  let v1825 : Index := Scalar.indexCast c0_i32_1236
  let c2_i32_1237 : BitVec 32 := 2#32
  let v1826 : Index := Scalar.indexCast c2_i32_1237
  let c0_i32_255 : BitVec 32 := 0#32
  let c1_i32_257 : BitVec 32 := 1#32
  let arg15 : BitVec 32 := Scf.iv c0_i32_255 c1_i32_257 k0_t2
  let v1827 : Index := Scalar.indexCast arg15
  let c464_1238 : Index := 464#32
  ![0, 2, v1827.toNat, 464]
def k0_off240 (k0_t2 : Fin k0_t2_loop.trips) : Fin 4 → Nat :=
  let c0_i32_1239 : BitVec 32 := 0#32
  let v1831 : Index := Scalar.indexCast c0_i32_1239
  let c2_i32_1240 : BitVec 32 := 2#32
  let v1832 : Index := Scalar.indexCast c2_i32_1240
  let c0_i32_255 : BitVec 32 := 0#32
  let c1_i32_257 : BitVec 32 := 1#32
  let arg15 : BitVec 32 := Scf.iv c0_i32_255 c1_i32_257 k0_t2
  let v1833 : Index := Scalar.indexCast arg15
  let c480_1241 : Index := 480#32
  ![0, 2, v1833.toNat, 480]
def k0_off241 (k0_t2 : Fin k0_t2_loop.trips) : Fin 4 → Nat :=
  let c0_i32_1242 : BitVec 32 := 0#32
  let v1837 : Index := Scalar.indexCast c0_i32_1242
  let c2_i32_1243 : BitVec 32 := 2#32
  let v1838 : Index := Scalar.indexCast c2_i32_1243
  let c0_i32_255 : BitVec 32 := 0#32
  let c1_i32_257 : BitVec 32 := 1#32
  let arg15 : BitVec 32 := Scf.iv c0_i32_255 c1_i32_257 k0_t2
  let v1839 : Index := Scalar.indexCast arg15
  let c480_1244 : Index := 480#32
  ![0, 2, v1839.toNat, 480]
def k0_off242 (k0_t2 : Fin k0_t2_loop.trips) : Fin 4 → Nat :=
  let c0_i32_1245 : BitVec 32 := 0#32
  let v1843 : Index := Scalar.indexCast c0_i32_1245
  let c2_i32_1246 : BitVec 32 := 2#32
  let v1844 : Index := Scalar.indexCast c2_i32_1246
  let c0_i32_255 : BitVec 32 := 0#32
  let c1_i32_257 : BitVec 32 := 1#32
  let arg15 : BitVec 32 := Scf.iv c0_i32_255 c1_i32_257 k0_t2
  let v1845 : Index := Scalar.indexCast arg15
  let c496_1247 : Index := 496#32
  ![0, 2, v1845.toNat, 496]
def k0_off243 (k0_t2 : Fin k0_t2_loop.trips) : Fin 4 → Nat :=
  let c0_i32_1248 : BitVec 32 := 0#32
  let v1849 : Index := Scalar.indexCast c0_i32_1248
  let c2_i32_1249 : BitVec 32 := 2#32
  let v1850 : Index := Scalar.indexCast c2_i32_1249
  let c0_i32_255 : BitVec 32 := 0#32
  let c1_i32_257 : BitVec 32 := 1#32
  let arg15 : BitVec 32 := Scf.iv c0_i32_255 c1_i32_257 k0_t2
  let v1851 : Index := Scalar.indexCast arg15
  let c496_1250 : Index := 496#32
  ![0, 2, v1851.toNat, 496]
def k0_off244 (k0_t2 : Fin k0_t2_loop.trips) : Fin 4 → Nat :=
  let c0_i32_1251 : BitVec 32 := 0#32
  let v1855 : Index := Scalar.indexCast c0_i32_1251
  let c3_i32_1252 : BitVec 32 := 3#32
  let v1856 : Index := Scalar.indexCast c3_i32_1252
  let c0_i32_255 : BitVec 32 := 0#32
  let c1_i32_257 : BitVec 32 := 1#32
  let arg15 : BitVec 32 := Scf.iv c0_i32_255 c1_i32_257 k0_t2
  let v1857 : Index := Scalar.indexCast arg15
  let c0_1253 : Index := 0#32
  ![0, 3, v1857.toNat, 0]
def k0_off245 (k0_t2 : Fin k0_t2_loop.trips) : Fin 4 → Nat :=
  let c0_i32_1254 : BitVec 32 := 0#32
  let v1861 : Index := Scalar.indexCast c0_i32_1254
  let c3_i32_1255 : BitVec 32 := 3#32
  let v1862 : Index := Scalar.indexCast c3_i32_1255
  let c0_i32_255 : BitVec 32 := 0#32
  let c1_i32_257 : BitVec 32 := 1#32
  let arg15 : BitVec 32 := Scf.iv c0_i32_255 c1_i32_257 k0_t2
  let v1863 : Index := Scalar.indexCast arg15
  let c0_1256 : Index := 0#32
  ![0, 3, v1863.toNat, 0]
def k0_off246 (k0_t2 : Fin k0_t2_loop.trips) : Fin 4 → Nat :=
  let c0_i32_1257 : BitVec 32 := 0#32
  let v1867 : Index := Scalar.indexCast c0_i32_1257
  let c3_i32_1258 : BitVec 32 := 3#32
  let v1868 : Index := Scalar.indexCast c3_i32_1258
  let c0_i32_255 : BitVec 32 := 0#32
  let c1_i32_257 : BitVec 32 := 1#32
  let arg15 : BitVec 32 := Scf.iv c0_i32_255 c1_i32_257 k0_t2
  let v1869 : Index := Scalar.indexCast arg15
  let c16_1259 : Index := 16#32
  ![0, 3, v1869.toNat, 16]
def k0_off247 (k0_t2 : Fin k0_t2_loop.trips) : Fin 4 → Nat :=
  let c0_i32_1260 : BitVec 32 := 0#32
  let v1873 : Index := Scalar.indexCast c0_i32_1260
  let c3_i32_1261 : BitVec 32 := 3#32
  let v1874 : Index := Scalar.indexCast c3_i32_1261
  let c0_i32_255 : BitVec 32 := 0#32
  let c1_i32_257 : BitVec 32 := 1#32
  let arg15 : BitVec 32 := Scf.iv c0_i32_255 c1_i32_257 k0_t2
  let v1875 : Index := Scalar.indexCast arg15
  let c16_1262 : Index := 16#32
  ![0, 3, v1875.toNat, 16]
def k0_off248 (k0_t2 : Fin k0_t2_loop.trips) : Fin 4 → Nat :=
  let c0_i32_1263 : BitVec 32 := 0#32
  let v1879 : Index := Scalar.indexCast c0_i32_1263
  let c3_i32_1264 : BitVec 32 := 3#32
  let v1880 : Index := Scalar.indexCast c3_i32_1264
  let c0_i32_255 : BitVec 32 := 0#32
  let c1_i32_257 : BitVec 32 := 1#32
  let arg15 : BitVec 32 := Scf.iv c0_i32_255 c1_i32_257 k0_t2
  let v1881 : Index := Scalar.indexCast arg15
  let c32_1265 : Index := 32#32
  ![0, 3, v1881.toNat, 32]
def k0_off249 (k0_t2 : Fin k0_t2_loop.trips) : Fin 4 → Nat :=
  let c0_i32_1266 : BitVec 32 := 0#32
  let v1885 : Index := Scalar.indexCast c0_i32_1266
  let c3_i32_1267 : BitVec 32 := 3#32
  let v1886 : Index := Scalar.indexCast c3_i32_1267
  let c0_i32_255 : BitVec 32 := 0#32
  let c1_i32_257 : BitVec 32 := 1#32
  let arg15 : BitVec 32 := Scf.iv c0_i32_255 c1_i32_257 k0_t2
  let v1887 : Index := Scalar.indexCast arg15
  let c32_1268 : Index := 32#32
  ![0, 3, v1887.toNat, 32]
def k0_off250 (k0_t2 : Fin k0_t2_loop.trips) : Fin 4 → Nat :=
  let c0_i32_1269 : BitVec 32 := 0#32
  let v1891 : Index := Scalar.indexCast c0_i32_1269
  let c3_i32_1270 : BitVec 32 := 3#32
  let v1892 : Index := Scalar.indexCast c3_i32_1270
  let c0_i32_255 : BitVec 32 := 0#32
  let c1_i32_257 : BitVec 32 := 1#32
  let arg15 : BitVec 32 := Scf.iv c0_i32_255 c1_i32_257 k0_t2
  let v1893 : Index := Scalar.indexCast arg15
  let c48_1271 : Index := 48#32
  ![0, 3, v1893.toNat, 48]
def k0_off251 (k0_t2 : Fin k0_t2_loop.trips) : Fin 4 → Nat :=
  let c0_i32_1272 : BitVec 32 := 0#32
  let v1897 : Index := Scalar.indexCast c0_i32_1272
  let c3_i32_1273 : BitVec 32 := 3#32
  let v1898 : Index := Scalar.indexCast c3_i32_1273
  let c0_i32_255 : BitVec 32 := 0#32
  let c1_i32_257 : BitVec 32 := 1#32
  let arg15 : BitVec 32 := Scf.iv c0_i32_255 c1_i32_257 k0_t2
  let v1899 : Index := Scalar.indexCast arg15
  let c48_1274 : Index := 48#32
  ![0, 3, v1899.toNat, 48]
def k0_off252 (k0_t2 : Fin k0_t2_loop.trips) : Fin 4 → Nat :=
  let c0_i32_1275 : BitVec 32 := 0#32
  let v1903 : Index := Scalar.indexCast c0_i32_1275
  let c3_i32_1276 : BitVec 32 := 3#32
  let v1904 : Index := Scalar.indexCast c3_i32_1276
  let c0_i32_255 : BitVec 32 := 0#32
  let c1_i32_257 : BitVec 32 := 1#32
  let arg15 : BitVec 32 := Scf.iv c0_i32_255 c1_i32_257 k0_t2
  let v1905 : Index := Scalar.indexCast arg15
  let c64_1277 : Index := 64#32
  ![0, 3, v1905.toNat, 64]
def k0_off253 (k0_t2 : Fin k0_t2_loop.trips) : Fin 4 → Nat :=
  let c0_i32_1278 : BitVec 32 := 0#32
  let v1909 : Index := Scalar.indexCast c0_i32_1278
  let c3_i32_1279 : BitVec 32 := 3#32
  let v1910 : Index := Scalar.indexCast c3_i32_1279
  let c0_i32_255 : BitVec 32 := 0#32
  let c1_i32_257 : BitVec 32 := 1#32
  let arg15 : BitVec 32 := Scf.iv c0_i32_255 c1_i32_257 k0_t2
  let v1911 : Index := Scalar.indexCast arg15
  let c64_1280 : Index := 64#32
  ![0, 3, v1911.toNat, 64]
def k0_off254 (k0_t2 : Fin k0_t2_loop.trips) : Fin 4 → Nat :=
  let c0_i32_1281 : BitVec 32 := 0#32
  let v1915 : Index := Scalar.indexCast c0_i32_1281
  let c3_i32_1282 : BitVec 32 := 3#32
  let v1916 : Index := Scalar.indexCast c3_i32_1282
  let c0_i32_255 : BitVec 32 := 0#32
  let c1_i32_257 : BitVec 32 := 1#32
  let arg15 : BitVec 32 := Scf.iv c0_i32_255 c1_i32_257 k0_t2
  let v1917 : Index := Scalar.indexCast arg15
  let c80_1283 : Index := 80#32
  ![0, 3, v1917.toNat, 80]
def k0_off255 (k0_t2 : Fin k0_t2_loop.trips) : Fin 4 → Nat :=
  let c0_i32_1284 : BitVec 32 := 0#32
  let v1921 : Index := Scalar.indexCast c0_i32_1284
  let c3_i32_1285 : BitVec 32 := 3#32
  let v1922 : Index := Scalar.indexCast c3_i32_1285
  let c0_i32_255 : BitVec 32 := 0#32
  let c1_i32_257 : BitVec 32 := 1#32
  let arg15 : BitVec 32 := Scf.iv c0_i32_255 c1_i32_257 k0_t2
  let v1923 : Index := Scalar.indexCast arg15
  let c80_1286 : Index := 80#32
  ![0, 3, v1923.toNat, 80]
def k0_off256 (k0_t2 : Fin k0_t2_loop.trips) : Fin 4 → Nat :=
  let c0_i32_1287 : BitVec 32 := 0#32
  let v1927 : Index := Scalar.indexCast c0_i32_1287
  let c3_i32_1288 : BitVec 32 := 3#32
  let v1928 : Index := Scalar.indexCast c3_i32_1288
  let c0_i32_255 : BitVec 32 := 0#32
  let c1_i32_257 : BitVec 32 := 1#32
  let arg15 : BitVec 32 := Scf.iv c0_i32_255 c1_i32_257 k0_t2
  let v1929 : Index := Scalar.indexCast arg15
  let c96_1289 : Index := 96#32
  ![0, 3, v1929.toNat, 96]
def k0_off257 (k0_t2 : Fin k0_t2_loop.trips) : Fin 4 → Nat :=
  let c0_i32_1290 : BitVec 32 := 0#32
  let v1933 : Index := Scalar.indexCast c0_i32_1290
  let c3_i32_1291 : BitVec 32 := 3#32
  let v1934 : Index := Scalar.indexCast c3_i32_1291
  let c0_i32_255 : BitVec 32 := 0#32
  let c1_i32_257 : BitVec 32 := 1#32
  let arg15 : BitVec 32 := Scf.iv c0_i32_255 c1_i32_257 k0_t2
  let v1935 : Index := Scalar.indexCast arg15
  let c96_1292 : Index := 96#32
  ![0, 3, v1935.toNat, 96]
def k0_off258 (k0_t2 : Fin k0_t2_loop.trips) : Fin 4 → Nat :=
  let c0_i32_1293 : BitVec 32 := 0#32
  let v1939 : Index := Scalar.indexCast c0_i32_1293
  let c3_i32_1294 : BitVec 32 := 3#32
  let v1940 : Index := Scalar.indexCast c3_i32_1294
  let c0_i32_255 : BitVec 32 := 0#32
  let c1_i32_257 : BitVec 32 := 1#32
  let arg15 : BitVec 32 := Scf.iv c0_i32_255 c1_i32_257 k0_t2
  let v1941 : Index := Scalar.indexCast arg15
  let c112_1295 : Index := 112#32
  ![0, 3, v1941.toNat, 112]
def k0_off259 (k0_t2 : Fin k0_t2_loop.trips) : Fin 4 → Nat :=
  let c0_i32_1296 : BitVec 32 := 0#32
  let v1945 : Index := Scalar.indexCast c0_i32_1296
  let c3_i32_1297 : BitVec 32 := 3#32
  let v1946 : Index := Scalar.indexCast c3_i32_1297
  let c0_i32_255 : BitVec 32 := 0#32
  let c1_i32_257 : BitVec 32 := 1#32
  let arg15 : BitVec 32 := Scf.iv c0_i32_255 c1_i32_257 k0_t2
  let v1947 : Index := Scalar.indexCast arg15
  let c112_1298 : Index := 112#32
  ![0, 3, v1947.toNat, 112]
def k0_off260 (k0_t2 : Fin k0_t2_loop.trips) : Fin 4 → Nat :=
  let c0_i32_1299 : BitVec 32 := 0#32
  let v1951 : Index := Scalar.indexCast c0_i32_1299
  let c3_i32_1300 : BitVec 32 := 3#32
  let v1952 : Index := Scalar.indexCast c3_i32_1300
  let c0_i32_255 : BitVec 32 := 0#32
  let c1_i32_257 : BitVec 32 := 1#32
  let arg15 : BitVec 32 := Scf.iv c0_i32_255 c1_i32_257 k0_t2
  let v1953 : Index := Scalar.indexCast arg15
  let c128_1301 : Index := 128#32
  ![0, 3, v1953.toNat, 128]
def k0_off261 (k0_t2 : Fin k0_t2_loop.trips) : Fin 4 → Nat :=
  let c0_i32_1302 : BitVec 32 := 0#32
  let v1957 : Index := Scalar.indexCast c0_i32_1302
  let c3_i32_1303 : BitVec 32 := 3#32
  let v1958 : Index := Scalar.indexCast c3_i32_1303
  let c0_i32_255 : BitVec 32 := 0#32
  let c1_i32_257 : BitVec 32 := 1#32
  let arg15 : BitVec 32 := Scf.iv c0_i32_255 c1_i32_257 k0_t2
  let v1959 : Index := Scalar.indexCast arg15
  let c128_1304 : Index := 128#32
  ![0, 3, v1959.toNat, 128]
def k0_off262 (k0_t2 : Fin k0_t2_loop.trips) : Fin 4 → Nat :=
  let c0_i32_1305 : BitVec 32 := 0#32
  let v1963 : Index := Scalar.indexCast c0_i32_1305
  let c3_i32_1306 : BitVec 32 := 3#32
  let v1964 : Index := Scalar.indexCast c3_i32_1306
  let c0_i32_255 : BitVec 32 := 0#32
  let c1_i32_257 : BitVec 32 := 1#32
  let arg15 : BitVec 32 := Scf.iv c0_i32_255 c1_i32_257 k0_t2
  let v1965 : Index := Scalar.indexCast arg15
  let c144_1307 : Index := 144#32
  ![0, 3, v1965.toNat, 144]
def k0_off263 (k0_t2 : Fin k0_t2_loop.trips) : Fin 4 → Nat :=
  let c0_i32_1308 : BitVec 32 := 0#32
  let v1969 : Index := Scalar.indexCast c0_i32_1308
  let c3_i32_1309 : BitVec 32 := 3#32
  let v1970 : Index := Scalar.indexCast c3_i32_1309
  let c0_i32_255 : BitVec 32 := 0#32
  let c1_i32_257 : BitVec 32 := 1#32
  let arg15 : BitVec 32 := Scf.iv c0_i32_255 c1_i32_257 k0_t2
  let v1971 : Index := Scalar.indexCast arg15
  let c144_1310 : Index := 144#32
  ![0, 3, v1971.toNat, 144]
def k0_off264 (k0_t2 : Fin k0_t2_loop.trips) : Fin 4 → Nat :=
  let c0_i32_1311 : BitVec 32 := 0#32
  let v1975 : Index := Scalar.indexCast c0_i32_1311
  let c3_i32_1312 : BitVec 32 := 3#32
  let v1976 : Index := Scalar.indexCast c3_i32_1312
  let c0_i32_255 : BitVec 32 := 0#32
  let c1_i32_257 : BitVec 32 := 1#32
  let arg15 : BitVec 32 := Scf.iv c0_i32_255 c1_i32_257 k0_t2
  let v1977 : Index := Scalar.indexCast arg15
  let c160_1313 : Index := 160#32
  ![0, 3, v1977.toNat, 160]
def k0_off265 (k0_t2 : Fin k0_t2_loop.trips) : Fin 4 → Nat :=
  let c0_i32_1314 : BitVec 32 := 0#32
  let v1981 : Index := Scalar.indexCast c0_i32_1314
  let c3_i32_1315 : BitVec 32 := 3#32
  let v1982 : Index := Scalar.indexCast c3_i32_1315
  let c0_i32_255 : BitVec 32 := 0#32
  let c1_i32_257 : BitVec 32 := 1#32
  let arg15 : BitVec 32 := Scf.iv c0_i32_255 c1_i32_257 k0_t2
  let v1983 : Index := Scalar.indexCast arg15
  let c160_1316 : Index := 160#32
  ![0, 3, v1983.toNat, 160]
def k0_off266 (k0_t2 : Fin k0_t2_loop.trips) : Fin 4 → Nat :=
  let c0_i32_1317 : BitVec 32 := 0#32
  let v1987 : Index := Scalar.indexCast c0_i32_1317
  let c3_i32_1318 : BitVec 32 := 3#32
  let v1988 : Index := Scalar.indexCast c3_i32_1318
  let c0_i32_255 : BitVec 32 := 0#32
  let c1_i32_257 : BitVec 32 := 1#32
  let arg15 : BitVec 32 := Scf.iv c0_i32_255 c1_i32_257 k0_t2
  let v1989 : Index := Scalar.indexCast arg15
  let c176_1319 : Index := 176#32
  ![0, 3, v1989.toNat, 176]
def k0_off267 (k0_t2 : Fin k0_t2_loop.trips) : Fin 4 → Nat :=
  let c0_i32_1320 : BitVec 32 := 0#32
  let v1993 : Index := Scalar.indexCast c0_i32_1320
  let c3_i32_1321 : BitVec 32 := 3#32
  let v1994 : Index := Scalar.indexCast c3_i32_1321
  let c0_i32_255 : BitVec 32 := 0#32
  let c1_i32_257 : BitVec 32 := 1#32
  let arg15 : BitVec 32 := Scf.iv c0_i32_255 c1_i32_257 k0_t2
  let v1995 : Index := Scalar.indexCast arg15
  let c176_1322 : Index := 176#32
  ![0, 3, v1995.toNat, 176]
def k0_off268 (k0_t2 : Fin k0_t2_loop.trips) : Fin 4 → Nat :=
  let c0_i32_1323 : BitVec 32 := 0#32
  let v1999 : Index := Scalar.indexCast c0_i32_1323
  let c3_i32_1324 : BitVec 32 := 3#32
  let v2000 : Index := Scalar.indexCast c3_i32_1324
  let c0_i32_255 : BitVec 32 := 0#32
  let c1_i32_257 : BitVec 32 := 1#32
  let arg15 : BitVec 32 := Scf.iv c0_i32_255 c1_i32_257 k0_t2
  let v2001 : Index := Scalar.indexCast arg15
  let c192_1325 : Index := 192#32
  ![0, 3, v2001.toNat, 192]
def k0_off269 (k0_t2 : Fin k0_t2_loop.trips) : Fin 4 → Nat :=
  let c0_i32_1326 : BitVec 32 := 0#32
  let v2005 : Index := Scalar.indexCast c0_i32_1326
  let c3_i32_1327 : BitVec 32 := 3#32
  let v2006 : Index := Scalar.indexCast c3_i32_1327
  let c0_i32_255 : BitVec 32 := 0#32
  let c1_i32_257 : BitVec 32 := 1#32
  let arg15 : BitVec 32 := Scf.iv c0_i32_255 c1_i32_257 k0_t2
  let v2007 : Index := Scalar.indexCast arg15
  let c192_1328 : Index := 192#32
  ![0, 3, v2007.toNat, 192]
def k0_off270 (k0_t2 : Fin k0_t2_loop.trips) : Fin 4 → Nat :=
  let c0_i32_1329 : BitVec 32 := 0#32
  let v2011 : Index := Scalar.indexCast c0_i32_1329
  let c3_i32_1330 : BitVec 32 := 3#32
  let v2012 : Index := Scalar.indexCast c3_i32_1330
  let c0_i32_255 : BitVec 32 := 0#32
  let c1_i32_257 : BitVec 32 := 1#32
  let arg15 : BitVec 32 := Scf.iv c0_i32_255 c1_i32_257 k0_t2
  let v2013 : Index := Scalar.indexCast arg15
  let c208_1331 : Index := 208#32
  ![0, 3, v2013.toNat, 208]
def k0_off271 (k0_t2 : Fin k0_t2_loop.trips) : Fin 4 → Nat :=
  let c0_i32_1332 : BitVec 32 := 0#32
  let v2017 : Index := Scalar.indexCast c0_i32_1332
  let c3_i32_1333 : BitVec 32 := 3#32
  let v2018 : Index := Scalar.indexCast c3_i32_1333
  let c0_i32_255 : BitVec 32 := 0#32
  let c1_i32_257 : BitVec 32 := 1#32
  let arg15 : BitVec 32 := Scf.iv c0_i32_255 c1_i32_257 k0_t2
  let v2019 : Index := Scalar.indexCast arg15
  let c208_1334 : Index := 208#32
  ![0, 3, v2019.toNat, 208]
def k0_off272 (k0_t2 : Fin k0_t2_loop.trips) : Fin 4 → Nat :=
  let c0_i32_1335 : BitVec 32 := 0#32
  let v2023 : Index := Scalar.indexCast c0_i32_1335
  let c3_i32_1336 : BitVec 32 := 3#32
  let v2024 : Index := Scalar.indexCast c3_i32_1336
  let c0_i32_255 : BitVec 32 := 0#32
  let c1_i32_257 : BitVec 32 := 1#32
  let arg15 : BitVec 32 := Scf.iv c0_i32_255 c1_i32_257 k0_t2
  let v2025 : Index := Scalar.indexCast arg15
  let c224_1337 : Index := 224#32
  ![0, 3, v2025.toNat, 224]
def k0_off273 (k0_t2 : Fin k0_t2_loop.trips) : Fin 4 → Nat :=
  let c0_i32_1338 : BitVec 32 := 0#32
  let v2029 : Index := Scalar.indexCast c0_i32_1338
  let c3_i32_1339 : BitVec 32 := 3#32
  let v2030 : Index := Scalar.indexCast c3_i32_1339
  let c0_i32_255 : BitVec 32 := 0#32
  let c1_i32_257 : BitVec 32 := 1#32
  let arg15 : BitVec 32 := Scf.iv c0_i32_255 c1_i32_257 k0_t2
  let v2031 : Index := Scalar.indexCast arg15
  let c224_1340 : Index := 224#32
  ![0, 3, v2031.toNat, 224]
def k0_off274 (k0_t2 : Fin k0_t2_loop.trips) : Fin 4 → Nat :=
  let c0_i32_1341 : BitVec 32 := 0#32
  let v2035 : Index := Scalar.indexCast c0_i32_1341
  let c3_i32_1342 : BitVec 32 := 3#32
  let v2036 : Index := Scalar.indexCast c3_i32_1342
  let c0_i32_255 : BitVec 32 := 0#32
  let c1_i32_257 : BitVec 32 := 1#32
  let arg15 : BitVec 32 := Scf.iv c0_i32_255 c1_i32_257 k0_t2
  let v2037 : Index := Scalar.indexCast arg15
  let c240_1343 : Index := 240#32
  ![0, 3, v2037.toNat, 240]
def k0_off275 (k0_t2 : Fin k0_t2_loop.trips) : Fin 4 → Nat :=
  let c0_i32_1344 : BitVec 32 := 0#32
  let v2041 : Index := Scalar.indexCast c0_i32_1344
  let c3_i32_1345 : BitVec 32 := 3#32
  let v2042 : Index := Scalar.indexCast c3_i32_1345
  let c0_i32_255 : BitVec 32 := 0#32
  let c1_i32_257 : BitVec 32 := 1#32
  let arg15 : BitVec 32 := Scf.iv c0_i32_255 c1_i32_257 k0_t2
  let v2043 : Index := Scalar.indexCast arg15
  let c240_1346 : Index := 240#32
  ![0, 3, v2043.toNat, 240]
def k0_off276 (k0_t2 : Fin k0_t2_loop.trips) : Fin 4 → Nat :=
  let c0_i32_1347 : BitVec 32 := 0#32
  let v2047 : Index := Scalar.indexCast c0_i32_1347
  let c3_i32_1348 : BitVec 32 := 3#32
  let v2048 : Index := Scalar.indexCast c3_i32_1348
  let c0_i32_255 : BitVec 32 := 0#32
  let c1_i32_257 : BitVec 32 := 1#32
  let arg15 : BitVec 32 := Scf.iv c0_i32_255 c1_i32_257 k0_t2
  let v2049 : Index := Scalar.indexCast arg15
  let c256_1349 : Index := 256#32
  ![0, 3, v2049.toNat, 256]
def k0_off277 (k0_t2 : Fin k0_t2_loop.trips) : Fin 4 → Nat :=
  let c0_i32_1350 : BitVec 32 := 0#32
  let v2053 : Index := Scalar.indexCast c0_i32_1350
  let c3_i32_1351 : BitVec 32 := 3#32
  let v2054 : Index := Scalar.indexCast c3_i32_1351
  let c0_i32_255 : BitVec 32 := 0#32
  let c1_i32_257 : BitVec 32 := 1#32
  let arg15 : BitVec 32 := Scf.iv c0_i32_255 c1_i32_257 k0_t2
  let v2055 : Index := Scalar.indexCast arg15
  let c256_1352 : Index := 256#32
  ![0, 3, v2055.toNat, 256]
def k0_off278 (k0_t2 : Fin k0_t2_loop.trips) : Fin 4 → Nat :=
  let c0_i32_1353 : BitVec 32 := 0#32
  let v2059 : Index := Scalar.indexCast c0_i32_1353
  let c3_i32_1354 : BitVec 32 := 3#32
  let v2060 : Index := Scalar.indexCast c3_i32_1354
  let c0_i32_255 : BitVec 32 := 0#32
  let c1_i32_257 : BitVec 32 := 1#32
  let arg15 : BitVec 32 := Scf.iv c0_i32_255 c1_i32_257 k0_t2
  let v2061 : Index := Scalar.indexCast arg15
  let c272_1355 : Index := 272#32
  ![0, 3, v2061.toNat, 272]
def k0_off279 (k0_t2 : Fin k0_t2_loop.trips) : Fin 4 → Nat :=
  let c0_i32_1356 : BitVec 32 := 0#32
  let v2065 : Index := Scalar.indexCast c0_i32_1356
  let c3_i32_1357 : BitVec 32 := 3#32
  let v2066 : Index := Scalar.indexCast c3_i32_1357
  let c0_i32_255 : BitVec 32 := 0#32
  let c1_i32_257 : BitVec 32 := 1#32
  let arg15 : BitVec 32 := Scf.iv c0_i32_255 c1_i32_257 k0_t2
  let v2067 : Index := Scalar.indexCast arg15
  let c272_1358 : Index := 272#32
  ![0, 3, v2067.toNat, 272]
def k0_off280 (k0_t2 : Fin k0_t2_loop.trips) : Fin 4 → Nat :=
  let c0_i32_1359 : BitVec 32 := 0#32
  let v2071 : Index := Scalar.indexCast c0_i32_1359
  let c3_i32_1360 : BitVec 32 := 3#32
  let v2072 : Index := Scalar.indexCast c3_i32_1360
  let c0_i32_255 : BitVec 32 := 0#32
  let c1_i32_257 : BitVec 32 := 1#32
  let arg15 : BitVec 32 := Scf.iv c0_i32_255 c1_i32_257 k0_t2
  let v2073 : Index := Scalar.indexCast arg15
  let c288_1361 : Index := 288#32
  ![0, 3, v2073.toNat, 288]
def k0_off281 (k0_t2 : Fin k0_t2_loop.trips) : Fin 4 → Nat :=
  let c0_i32_1362 : BitVec 32 := 0#32
  let v2077 : Index := Scalar.indexCast c0_i32_1362
  let c3_i32_1363 : BitVec 32 := 3#32
  let v2078 : Index := Scalar.indexCast c3_i32_1363
  let c0_i32_255 : BitVec 32 := 0#32
  let c1_i32_257 : BitVec 32 := 1#32
  let arg15 : BitVec 32 := Scf.iv c0_i32_255 c1_i32_257 k0_t2
  let v2079 : Index := Scalar.indexCast arg15
  let c288_1364 : Index := 288#32
  ![0, 3, v2079.toNat, 288]
def k0_off282 (k0_t2 : Fin k0_t2_loop.trips) : Fin 4 → Nat :=
  let c0_i32_1365 : BitVec 32 := 0#32
  let v2083 : Index := Scalar.indexCast c0_i32_1365
  let c3_i32_1366 : BitVec 32 := 3#32
  let v2084 : Index := Scalar.indexCast c3_i32_1366
  let c0_i32_255 : BitVec 32 := 0#32
  let c1_i32_257 : BitVec 32 := 1#32
  let arg15 : BitVec 32 := Scf.iv c0_i32_255 c1_i32_257 k0_t2
  let v2085 : Index := Scalar.indexCast arg15
  let c304_1367 : Index := 304#32
  ![0, 3, v2085.toNat, 304]
def k0_off283 (k0_t2 : Fin k0_t2_loop.trips) : Fin 4 → Nat :=
  let c0_i32_1368 : BitVec 32 := 0#32
  let v2089 : Index := Scalar.indexCast c0_i32_1368
  let c3_i32_1369 : BitVec 32 := 3#32
  let v2090 : Index := Scalar.indexCast c3_i32_1369
  let c0_i32_255 : BitVec 32 := 0#32
  let c1_i32_257 : BitVec 32 := 1#32
  let arg15 : BitVec 32 := Scf.iv c0_i32_255 c1_i32_257 k0_t2
  let v2091 : Index := Scalar.indexCast arg15
  let c304_1370 : Index := 304#32
  ![0, 3, v2091.toNat, 304]
def k0_off284 (k0_t2 : Fin k0_t2_loop.trips) : Fin 4 → Nat :=
  let c0_i32_1371 : BitVec 32 := 0#32
  let v2095 : Index := Scalar.indexCast c0_i32_1371
  let c3_i32_1372 : BitVec 32 := 3#32
  let v2096 : Index := Scalar.indexCast c3_i32_1372
  let c0_i32_255 : BitVec 32 := 0#32
  let c1_i32_257 : BitVec 32 := 1#32
  let arg15 : BitVec 32 := Scf.iv c0_i32_255 c1_i32_257 k0_t2
  let v2097 : Index := Scalar.indexCast arg15
  let c320_1373 : Index := 320#32
  ![0, 3, v2097.toNat, 320]
def k0_off285 (k0_t2 : Fin k0_t2_loop.trips) : Fin 4 → Nat :=
  let c0_i32_1374 : BitVec 32 := 0#32
  let v2101 : Index := Scalar.indexCast c0_i32_1374
  let c3_i32_1375 : BitVec 32 := 3#32
  let v2102 : Index := Scalar.indexCast c3_i32_1375
  let c0_i32_255 : BitVec 32 := 0#32
  let c1_i32_257 : BitVec 32 := 1#32
  let arg15 : BitVec 32 := Scf.iv c0_i32_255 c1_i32_257 k0_t2
  let v2103 : Index := Scalar.indexCast arg15
  let c320_1376 : Index := 320#32
  ![0, 3, v2103.toNat, 320]
def k0_off286 (k0_t2 : Fin k0_t2_loop.trips) : Fin 4 → Nat :=
  let c0_i32_1377 : BitVec 32 := 0#32
  let v2107 : Index := Scalar.indexCast c0_i32_1377
  let c3_i32_1378 : BitVec 32 := 3#32
  let v2108 : Index := Scalar.indexCast c3_i32_1378
  let c0_i32_255 : BitVec 32 := 0#32
  let c1_i32_257 : BitVec 32 := 1#32
  let arg15 : BitVec 32 := Scf.iv c0_i32_255 c1_i32_257 k0_t2
  let v2109 : Index := Scalar.indexCast arg15
  let c336_1379 : Index := 336#32
  ![0, 3, v2109.toNat, 336]
def k0_off287 (k0_t2 : Fin k0_t2_loop.trips) : Fin 4 → Nat :=
  let c0_i32_1380 : BitVec 32 := 0#32
  let v2113 : Index := Scalar.indexCast c0_i32_1380
  let c3_i32_1381 : BitVec 32 := 3#32
  let v2114 : Index := Scalar.indexCast c3_i32_1381
  let c0_i32_255 : BitVec 32 := 0#32
  let c1_i32_257 : BitVec 32 := 1#32
  let arg15 : BitVec 32 := Scf.iv c0_i32_255 c1_i32_257 k0_t2
  let v2115 : Index := Scalar.indexCast arg15
  let c336_1382 : Index := 336#32
  ![0, 3, v2115.toNat, 336]
def k0_off288 (k0_t2 : Fin k0_t2_loop.trips) : Fin 4 → Nat :=
  let c0_i32_1383 : BitVec 32 := 0#32
  let v2119 : Index := Scalar.indexCast c0_i32_1383
  let c3_i32_1384 : BitVec 32 := 3#32
  let v2120 : Index := Scalar.indexCast c3_i32_1384
  let c0_i32_255 : BitVec 32 := 0#32
  let c1_i32_257 : BitVec 32 := 1#32
  let arg15 : BitVec 32 := Scf.iv c0_i32_255 c1_i32_257 k0_t2
  let v2121 : Index := Scalar.indexCast arg15
  let c352_1385 : Index := 352#32
  ![0, 3, v2121.toNat, 352]
def k0_off289 (k0_t2 : Fin k0_t2_loop.trips) : Fin 4 → Nat :=
  let c0_i32_1386 : BitVec 32 := 0#32
  let v2125 : Index := Scalar.indexCast c0_i32_1386
  let c3_i32_1387 : BitVec 32 := 3#32
  let v2126 : Index := Scalar.indexCast c3_i32_1387
  let c0_i32_255 : BitVec 32 := 0#32
  let c1_i32_257 : BitVec 32 := 1#32
  let arg15 : BitVec 32 := Scf.iv c0_i32_255 c1_i32_257 k0_t2
  let v2127 : Index := Scalar.indexCast arg15
  let c352_1388 : Index := 352#32
  ![0, 3, v2127.toNat, 352]
def k0_off290 (k0_t2 : Fin k0_t2_loop.trips) : Fin 4 → Nat :=
  let c0_i32_1389 : BitVec 32 := 0#32
  let v2131 : Index := Scalar.indexCast c0_i32_1389
  let c3_i32_1390 : BitVec 32 := 3#32
  let v2132 : Index := Scalar.indexCast c3_i32_1390
  let c0_i32_255 : BitVec 32 := 0#32
  let c1_i32_257 : BitVec 32 := 1#32
  let arg15 : BitVec 32 := Scf.iv c0_i32_255 c1_i32_257 k0_t2
  let v2133 : Index := Scalar.indexCast arg15
  let c368_1391 : Index := 368#32
  ![0, 3, v2133.toNat, 368]
def k0_off291 (k0_t2 : Fin k0_t2_loop.trips) : Fin 4 → Nat :=
  let c0_i32_1392 : BitVec 32 := 0#32
  let v2137 : Index := Scalar.indexCast c0_i32_1392
  let c3_i32_1393 : BitVec 32 := 3#32
  let v2138 : Index := Scalar.indexCast c3_i32_1393
  let c0_i32_255 : BitVec 32 := 0#32
  let c1_i32_257 : BitVec 32 := 1#32
  let arg15 : BitVec 32 := Scf.iv c0_i32_255 c1_i32_257 k0_t2
  let v2139 : Index := Scalar.indexCast arg15
  let c368_1394 : Index := 368#32
  ![0, 3, v2139.toNat, 368]
def k0_off292 (k0_t2 : Fin k0_t2_loop.trips) : Fin 4 → Nat :=
  let c0_i32_1395 : BitVec 32 := 0#32
  let v2143 : Index := Scalar.indexCast c0_i32_1395
  let c3_i32_1396 : BitVec 32 := 3#32
  let v2144 : Index := Scalar.indexCast c3_i32_1396
  let c0_i32_255 : BitVec 32 := 0#32
  let c1_i32_257 : BitVec 32 := 1#32
  let arg15 : BitVec 32 := Scf.iv c0_i32_255 c1_i32_257 k0_t2
  let v2145 : Index := Scalar.indexCast arg15
  let c384_1397 : Index := 384#32
  ![0, 3, v2145.toNat, 384]
def k0_off293 (k0_t2 : Fin k0_t2_loop.trips) : Fin 4 → Nat :=
  let c0_i32_1398 : BitVec 32 := 0#32
  let v2149 : Index := Scalar.indexCast c0_i32_1398
  let c3_i32_1399 : BitVec 32 := 3#32
  let v2150 : Index := Scalar.indexCast c3_i32_1399
  let c0_i32_255 : BitVec 32 := 0#32
  let c1_i32_257 : BitVec 32 := 1#32
  let arg15 : BitVec 32 := Scf.iv c0_i32_255 c1_i32_257 k0_t2
  let v2151 : Index := Scalar.indexCast arg15
  let c384_1400 : Index := 384#32
  ![0, 3, v2151.toNat, 384]
def k0_off294 (k0_t2 : Fin k0_t2_loop.trips) : Fin 4 → Nat :=
  let c0_i32_1401 : BitVec 32 := 0#32
  let v2155 : Index := Scalar.indexCast c0_i32_1401
  let c3_i32_1402 : BitVec 32 := 3#32
  let v2156 : Index := Scalar.indexCast c3_i32_1402
  let c0_i32_255 : BitVec 32 := 0#32
  let c1_i32_257 : BitVec 32 := 1#32
  let arg15 : BitVec 32 := Scf.iv c0_i32_255 c1_i32_257 k0_t2
  let v2157 : Index := Scalar.indexCast arg15
  let c400_1403 : Index := 400#32
  ![0, 3, v2157.toNat, 400]
def k0_off295 (k0_t2 : Fin k0_t2_loop.trips) : Fin 4 → Nat :=
  let c0_i32_1404 : BitVec 32 := 0#32
  let v2161 : Index := Scalar.indexCast c0_i32_1404
  let c3_i32_1405 : BitVec 32 := 3#32
  let v2162 : Index := Scalar.indexCast c3_i32_1405
  let c0_i32_255 : BitVec 32 := 0#32
  let c1_i32_257 : BitVec 32 := 1#32
  let arg15 : BitVec 32 := Scf.iv c0_i32_255 c1_i32_257 k0_t2
  let v2163 : Index := Scalar.indexCast arg15
  let c400_1406 : Index := 400#32
  ![0, 3, v2163.toNat, 400]
def k0_off296 (k0_t2 : Fin k0_t2_loop.trips) : Fin 4 → Nat :=
  let c0_i32_1407 : BitVec 32 := 0#32
  let v2167 : Index := Scalar.indexCast c0_i32_1407
  let c3_i32_1408 : BitVec 32 := 3#32
  let v2168 : Index := Scalar.indexCast c3_i32_1408
  let c0_i32_255 : BitVec 32 := 0#32
  let c1_i32_257 : BitVec 32 := 1#32
  let arg15 : BitVec 32 := Scf.iv c0_i32_255 c1_i32_257 k0_t2
  let v2169 : Index := Scalar.indexCast arg15
  let c416_1409 : Index := 416#32
  ![0, 3, v2169.toNat, 416]
def k0_off297 (k0_t2 : Fin k0_t2_loop.trips) : Fin 4 → Nat :=
  let c0_i32_1410 : BitVec 32 := 0#32
  let v2173 : Index := Scalar.indexCast c0_i32_1410
  let c3_i32_1411 : BitVec 32 := 3#32
  let v2174 : Index := Scalar.indexCast c3_i32_1411
  let c0_i32_255 : BitVec 32 := 0#32
  let c1_i32_257 : BitVec 32 := 1#32
  let arg15 : BitVec 32 := Scf.iv c0_i32_255 c1_i32_257 k0_t2
  let v2175 : Index := Scalar.indexCast arg15
  let c416_1412 : Index := 416#32
  ![0, 3, v2175.toNat, 416]
def k0_off298 (k0_t2 : Fin k0_t2_loop.trips) : Fin 4 → Nat :=
  let c0_i32_1413 : BitVec 32 := 0#32
  let v2179 : Index := Scalar.indexCast c0_i32_1413
  let c3_i32_1414 : BitVec 32 := 3#32
  let v2180 : Index := Scalar.indexCast c3_i32_1414
  let c0_i32_255 : BitVec 32 := 0#32
  let c1_i32_257 : BitVec 32 := 1#32
  let arg15 : BitVec 32 := Scf.iv c0_i32_255 c1_i32_257 k0_t2
  let v2181 : Index := Scalar.indexCast arg15
  let c432_1415 : Index := 432#32
  ![0, 3, v2181.toNat, 432]
def k0_off299 (k0_t2 : Fin k0_t2_loop.trips) : Fin 4 → Nat :=
  let c0_i32_1416 : BitVec 32 := 0#32
  let v2185 : Index := Scalar.indexCast c0_i32_1416
  let c3_i32_1417 : BitVec 32 := 3#32
  let v2186 : Index := Scalar.indexCast c3_i32_1417
  let c0_i32_255 : BitVec 32 := 0#32
  let c1_i32_257 : BitVec 32 := 1#32
  let arg15 : BitVec 32 := Scf.iv c0_i32_255 c1_i32_257 k0_t2
  let v2187 : Index := Scalar.indexCast arg15
  let c432_1418 : Index := 432#32
  ![0, 3, v2187.toNat, 432]
def k0_off300 (k0_t2 : Fin k0_t2_loop.trips) : Fin 4 → Nat :=
  let c0_i32_1419 : BitVec 32 := 0#32
  let v2191 : Index := Scalar.indexCast c0_i32_1419
  let c3_i32_1420 : BitVec 32 := 3#32
  let v2192 : Index := Scalar.indexCast c3_i32_1420
  let c0_i32_255 : BitVec 32 := 0#32
  let c1_i32_257 : BitVec 32 := 1#32
  let arg15 : BitVec 32 := Scf.iv c0_i32_255 c1_i32_257 k0_t2
  let v2193 : Index := Scalar.indexCast arg15
  let c448_1421 : Index := 448#32
  ![0, 3, v2193.toNat, 448]
def k0_off301 (k0_t2 : Fin k0_t2_loop.trips) : Fin 4 → Nat :=
  let c0_i32_1422 : BitVec 32 := 0#32
  let v2197 : Index := Scalar.indexCast c0_i32_1422
  let c3_i32_1423 : BitVec 32 := 3#32
  let v2198 : Index := Scalar.indexCast c3_i32_1423
  let c0_i32_255 : BitVec 32 := 0#32
  let c1_i32_257 : BitVec 32 := 1#32
  let arg15 : BitVec 32 := Scf.iv c0_i32_255 c1_i32_257 k0_t2
  let v2199 : Index := Scalar.indexCast arg15
  let c448_1424 : Index := 448#32
  ![0, 3, v2199.toNat, 448]
def k0_off302 (k0_t2 : Fin k0_t2_loop.trips) : Fin 4 → Nat :=
  let c0_i32_1425 : BitVec 32 := 0#32
  let v2203 : Index := Scalar.indexCast c0_i32_1425
  let c3_i32_1426 : BitVec 32 := 3#32
  let v2204 : Index := Scalar.indexCast c3_i32_1426
  let c0_i32_255 : BitVec 32 := 0#32
  let c1_i32_257 : BitVec 32 := 1#32
  let arg15 : BitVec 32 := Scf.iv c0_i32_255 c1_i32_257 k0_t2
  let v2205 : Index := Scalar.indexCast arg15
  let c464_1427 : Index := 464#32
  ![0, 3, v2205.toNat, 464]
def k0_off303 (k0_t2 : Fin k0_t2_loop.trips) : Fin 4 → Nat :=
  let c0_i32_1428 : BitVec 32 := 0#32
  let v2209 : Index := Scalar.indexCast c0_i32_1428
  let c3_i32_1429 : BitVec 32 := 3#32
  let v2210 : Index := Scalar.indexCast c3_i32_1429
  let c0_i32_255 : BitVec 32 := 0#32
  let c1_i32_257 : BitVec 32 := 1#32
  let arg15 : BitVec 32 := Scf.iv c0_i32_255 c1_i32_257 k0_t2
  let v2211 : Index := Scalar.indexCast arg15
  let c464_1430 : Index := 464#32
  ![0, 3, v2211.toNat, 464]
def k0_off304 (k0_t2 : Fin k0_t2_loop.trips) : Fin 4 → Nat :=
  let c0_i32_1431 : BitVec 32 := 0#32
  let v2215 : Index := Scalar.indexCast c0_i32_1431
  let c3_i32_1432 : BitVec 32 := 3#32
  let v2216 : Index := Scalar.indexCast c3_i32_1432
  let c0_i32_255 : BitVec 32 := 0#32
  let c1_i32_257 : BitVec 32 := 1#32
  let arg15 : BitVec 32 := Scf.iv c0_i32_255 c1_i32_257 k0_t2
  let v2217 : Index := Scalar.indexCast arg15
  let c480_1433 : Index := 480#32
  ![0, 3, v2217.toNat, 480]
def k0_off305 (k0_t2 : Fin k0_t2_loop.trips) : Fin 4 → Nat :=
  let c0_i32_1434 : BitVec 32 := 0#32
  let v2221 : Index := Scalar.indexCast c0_i32_1434
  let c3_i32_1435 : BitVec 32 := 3#32
  let v2222 : Index := Scalar.indexCast c3_i32_1435
  let c0_i32_255 : BitVec 32 := 0#32
  let c1_i32_257 : BitVec 32 := 1#32
  let arg15 : BitVec 32 := Scf.iv c0_i32_255 c1_i32_257 k0_t2
  let v2223 : Index := Scalar.indexCast arg15
  let c480_1436 : Index := 480#32
  ![0, 3, v2223.toNat, 480]
def k0_off306 (k0_t2 : Fin k0_t2_loop.trips) : Fin 4 → Nat :=
  let c0_i32_1437 : BitVec 32 := 0#32
  let v2227 : Index := Scalar.indexCast c0_i32_1437
  let c3_i32_1438 : BitVec 32 := 3#32
  let v2228 : Index := Scalar.indexCast c3_i32_1438
  let c0_i32_255 : BitVec 32 := 0#32
  let c1_i32_257 : BitVec 32 := 1#32
  let arg15 : BitVec 32 := Scf.iv c0_i32_255 c1_i32_257 k0_t2
  let v2229 : Index := Scalar.indexCast arg15
  let c496_1439 : Index := 496#32
  ![0, 3, v2229.toNat, 496]
def k0_off307 (k0_t2 : Fin k0_t2_loop.trips) : Fin 4 → Nat :=
  let c0_i32_1440 : BitVec 32 := 0#32
  let v2233 : Index := Scalar.indexCast c0_i32_1440
  let c3_i32_1441 : BitVec 32 := 3#32
  let v2234 : Index := Scalar.indexCast c3_i32_1441
  let c0_i32_255 : BitVec 32 := 0#32
  let c1_i32_257 : BitVec 32 := 1#32
  let arg15 : BitVec 32 := Scf.iv c0_i32_255 c1_i32_257 k0_t2
  let v2235 : Index := Scalar.indexCast arg15
  let c496_1442 : Index := 496#32
  ![0, 3, v2235.toNat, 496]
def k0_off308 (k0_t2 : Fin k0_t2_loop.trips) : Fin 3 → Nat :=
  let c0_i32_1443 : BitVec 32 := 0#32
  let v2239 : Index := Scalar.indexCast c0_i32_1443
  let c0_i32_255 : BitVec 32 := 0#32
  let c1_i32_257 : BitVec 32 := 1#32
  let arg15 : BitVec 32 := Scf.iv c0_i32_255 c1_i32_257 k0_t2
  let v2240 : Index := Scalar.indexCast arg15
  let c512 : Index := 512#32
  ![0, v2240.toNat, 512]
def k0_off309 (k0_t2 : Fin k0_t2_loop.trips) : Fin 3 → Nat :=
  let c0_i32_1444 : BitVec 32 := 0#32
  let v2243 : Index := Scalar.indexCast c0_i32_1444
  let c0_i32_255 : BitVec 32 := 0#32
  let c1_i32_257 : BitVec 32 := 1#32
  let arg15 : BitVec 32 := Scf.iv c0_i32_255 c1_i32_257 k0_t2
  let v2244 : Index := Scalar.indexCast arg15
  let c528 : Index := 528#32
  ![0, v2244.toNat, 528]
def k0_off310 (k0_t2 : Fin k0_t2_loop.trips) : Fin 3 → Nat :=
  let c0_i32_1445 : BitVec 32 := 0#32
  let v2247 : Index := Scalar.indexCast c0_i32_1445
  let c0_i32_255 : BitVec 32 := 0#32
  let c1_i32_257 : BitVec 32 := 1#32
  let arg15 : BitVec 32 := Scf.iv c0_i32_255 c1_i32_257 k0_t2
  let v2248 : Index := Scalar.indexCast arg15
  let c544 : Index := 544#32
  ![0, v2248.toNat, 544]
def k0_off311 (k0_t2 : Fin k0_t2_loop.trips) : Fin 3 → Nat :=
  let c0_i32_1446 : BitVec 32 := 0#32
  let v2251 : Index := Scalar.indexCast c0_i32_1446
  let c0_i32_255 : BitVec 32 := 0#32
  let c1_i32_257 : BitVec 32 := 1#32
  let arg15 : BitVec 32 := Scf.iv c0_i32_255 c1_i32_257 k0_t2
  let v2252 : Index := Scalar.indexCast arg15
  let c560 : Index := 560#32
  ![0, v2252.toNat, 560]
def k0_off312 (k0_t2 : Fin k0_t2_loop.trips) : Fin 3 → Nat :=
  let c0_i32_1447 : BitVec 32 := 0#32
  let v2255 : Index := Scalar.indexCast c0_i32_1447
  let c0_i32_255 : BitVec 32 := 0#32
  let c1_i32_257 : BitVec 32 := 1#32
  let arg15 : BitVec 32 := Scf.iv c0_i32_255 c1_i32_257 k0_t2
  let v2256 : Index := Scalar.indexCast arg15
  let c576 : Index := 576#32
  ![0, v2256.toNat, 576]
def k0_off313 (k0_t2 : Fin k0_t2_loop.trips) : Fin 3 → Nat :=
  let c0_i32_1448 : BitVec 32 := 0#32
  let v2259 : Index := Scalar.indexCast c0_i32_1448
  let c0_i32_255 : BitVec 32 := 0#32
  let c1_i32_257 : BitVec 32 := 1#32
  let arg15 : BitVec 32 := Scf.iv c0_i32_255 c1_i32_257 k0_t2
  let v2260 : Index := Scalar.indexCast arg15
  let c592 : Index := 592#32
  ![0, v2260.toNat, 592]
def k0_off314 (k0_t2 : Fin k0_t2_loop.trips) : Fin 3 → Nat :=
  let c0_i32_1449 : BitVec 32 := 0#32
  let v2263 : Index := Scalar.indexCast c0_i32_1449
  let c0_i32_255 : BitVec 32 := 0#32
  let c1_i32_257 : BitVec 32 := 1#32
  let arg15 : BitVec 32 := Scf.iv c0_i32_255 c1_i32_257 k0_t2
  let v2264 : Index := Scalar.indexCast arg15
  let c608 : Index := 608#32
  ![0, v2264.toNat, 608]
def k0_off315 (k0_t2 : Fin k0_t2_loop.trips) : Fin 3 → Nat :=
  let c0_i32_1450 : BitVec 32 := 0#32
  let v2267 : Index := Scalar.indexCast c0_i32_1450
  let c0_i32_255 : BitVec 32 := 0#32
  let c1_i32_257 : BitVec 32 := 1#32
  let arg15 : BitVec 32 := Scf.iv c0_i32_255 c1_i32_257 k0_t2
  let v2268 : Index := Scalar.indexCast arg15
  let c624 : Index := 624#32
  ![0, v2268.toNat, 624]
def k0_off316 (k0_t2 : Fin k0_t2_loop.trips) : Fin 3 → Nat :=
  let c0_i32_1451 : BitVec 32 := 0#32
  let v2271 : Index := Scalar.indexCast c0_i32_1451
  let c0_i32_255 : BitVec 32 := 0#32
  let c1_i32_257 : BitVec 32 := 1#32
  let arg15 : BitVec 32 := Scf.iv c0_i32_255 c1_i32_257 k0_t2
  let v2272 : Index := Scalar.indexCast arg15
  let c640 : Index := 640#32
  ![0, v2272.toNat, 640]
def k0_off317 (k0_t2 : Fin k0_t2_loop.trips) : Fin 3 → Nat :=
  let c0_i32_1452 : BitVec 32 := 0#32
  let v2275 : Index := Scalar.indexCast c0_i32_1452
  let c0_i32_255 : BitVec 32 := 0#32
  let c1_i32_257 : BitVec 32 := 1#32
  let arg15 : BitVec 32 := Scf.iv c0_i32_255 c1_i32_257 k0_t2
  let v2276 : Index := Scalar.indexCast arg15
  let c656 : Index := 656#32
  ![0, v2276.toNat, 656]
def k0_off318 (k0_t2 : Fin k0_t2_loop.trips) : Fin 3 → Nat :=
  let c0_i32_1453 : BitVec 32 := 0#32
  let v2279 : Index := Scalar.indexCast c0_i32_1453
  let c0_i32_255 : BitVec 32 := 0#32
  let c1_i32_257 : BitVec 32 := 1#32
  let arg15 : BitVec 32 := Scf.iv c0_i32_255 c1_i32_257 k0_t2
  let v2280 : Index := Scalar.indexCast arg15
  let c672 : Index := 672#32
  ![0, v2280.toNat, 672]
def k0_off319 (k0_t2 : Fin k0_t2_loop.trips) : Fin 3 → Nat :=
  let c0_i32_1454 : BitVec 32 := 0#32
  let v2283 : Index := Scalar.indexCast c0_i32_1454
  let c0_i32_255 : BitVec 32 := 0#32
  let c1_i32_257 : BitVec 32 := 1#32
  let arg15 : BitVec 32 := Scf.iv c0_i32_255 c1_i32_257 k0_t2
  let v2284 : Index := Scalar.indexCast arg15
  let c688 : Index := 688#32
  ![0, v2284.toNat, 688]
def k0_off320 (k0_t2 : Fin k0_t2_loop.trips) : Fin 3 → Nat :=
  let c0_i32_1455 : BitVec 32 := 0#32
  let v2287 : Index := Scalar.indexCast c0_i32_1455
  let c0_i32_255 : BitVec 32 := 0#32
  let c1_i32_257 : BitVec 32 := 1#32
  let arg15 : BitVec 32 := Scf.iv c0_i32_255 c1_i32_257 k0_t2
  let v2288 : Index := Scalar.indexCast arg15
  let c704 : Index := 704#32
  ![0, v2288.toNat, 704]
def k0_off321 (k0_t2 : Fin k0_t2_loop.trips) : Fin 3 → Nat :=
  let c0_i32_1456 : BitVec 32 := 0#32
  let v2291 : Index := Scalar.indexCast c0_i32_1456
  let c0_i32_255 : BitVec 32 := 0#32
  let c1_i32_257 : BitVec 32 := 1#32
  let arg15 : BitVec 32 := Scf.iv c0_i32_255 c1_i32_257 k0_t2
  let v2292 : Index := Scalar.indexCast arg15
  let c720 : Index := 720#32
  ![0, v2292.toNat, 720]
def k0_off322 (k0_t2 : Fin k0_t2_loop.trips) : Fin 3 → Nat :=
  let c0_i32_1457 : BitVec 32 := 0#32
  let v2295 : Index := Scalar.indexCast c0_i32_1457
  let c0_i32_255 : BitVec 32 := 0#32
  let c1_i32_257 : BitVec 32 := 1#32
  let arg15 : BitVec 32 := Scf.iv c0_i32_255 c1_i32_257 k0_t2
  let v2296 : Index := Scalar.indexCast arg15
  let c736 : Index := 736#32
  ![0, v2296.toNat, 736]
def k0_off323 (k0_t2 : Fin k0_t2_loop.trips) : Fin 3 → Nat :=
  let c0_i32_1458 : BitVec 32 := 0#32
  let v2299 : Index := Scalar.indexCast c0_i32_1458
  let c0_i32_255 : BitVec 32 := 0#32
  let c1_i32_257 : BitVec 32 := 1#32
  let arg15 : BitVec 32 := Scf.iv c0_i32_255 c1_i32_257 k0_t2
  let v2300 : Index := Scalar.indexCast arg15
  let c752 : Index := 752#32
  ![0, v2300.toNat, 752]
def k0_off324 (k0_t2 : Fin k0_t2_loop.trips) : Fin 3 → Nat :=
  let c0_i32_1459 : BitVec 32 := 0#32
  let v2303 : Index := Scalar.indexCast c0_i32_1459
  let c0_i32_255 : BitVec 32 := 0#32
  let c1_i32_257 : BitVec 32 := 1#32
  let arg15 : BitVec 32 := Scf.iv c0_i32_255 c1_i32_257 k0_t2
  let v2304 : Index := Scalar.indexCast arg15
  let c768 : Index := 768#32
  ![0, v2304.toNat, 768]
def k0_off325 (k0_t2 : Fin k0_t2_loop.trips) : Fin 3 → Nat :=
  let c0_i32_1460 : BitVec 32 := 0#32
  let v2307 : Index := Scalar.indexCast c0_i32_1460
  let c0_i32_255 : BitVec 32 := 0#32
  let c1_i32_257 : BitVec 32 := 1#32
  let arg15 : BitVec 32 := Scf.iv c0_i32_255 c1_i32_257 k0_t2
  let v2308 : Index := Scalar.indexCast arg15
  let c784 : Index := 784#32
  ![0, v2308.toNat, 784]
def k0_off326 (k0_t2 : Fin k0_t2_loop.trips) : Fin 3 → Nat :=
  let c0_i32_1461 : BitVec 32 := 0#32
  let v2311 : Index := Scalar.indexCast c0_i32_1461
  let c0_i32_255 : BitVec 32 := 0#32
  let c1_i32_257 : BitVec 32 := 1#32
  let arg15 : BitVec 32 := Scf.iv c0_i32_255 c1_i32_257 k0_t2
  let v2312 : Index := Scalar.indexCast arg15
  let c800 : Index := 800#32
  ![0, v2312.toNat, 800]
def k0_off327 (k0_t2 : Fin k0_t2_loop.trips) : Fin 3 → Nat :=
  let c0_i32_1462 : BitVec 32 := 0#32
  let v2315 : Index := Scalar.indexCast c0_i32_1462
  let c0_i32_255 : BitVec 32 := 0#32
  let c1_i32_257 : BitVec 32 := 1#32
  let arg15 : BitVec 32 := Scf.iv c0_i32_255 c1_i32_257 k0_t2
  let v2316 : Index := Scalar.indexCast arg15
  let c816 : Index := 816#32
  ![0, v2316.toNat, 816]
def k0_off328 (k0_t2 : Fin k0_t2_loop.trips) : Fin 3 → Nat :=
  let c0_i32_1463 : BitVec 32 := 0#32
  let v2319 : Index := Scalar.indexCast c0_i32_1463
  let c0_i32_255 : BitVec 32 := 0#32
  let c1_i32_257 : BitVec 32 := 1#32
  let arg15 : BitVec 32 := Scf.iv c0_i32_255 c1_i32_257 k0_t2
  let v2320 : Index := Scalar.indexCast arg15
  let c832 : Index := 832#32
  ![0, v2320.toNat, 832]
def k0_off329 (k0_t2 : Fin k0_t2_loop.trips) : Fin 3 → Nat :=
  let c0_i32_1464 : BitVec 32 := 0#32
  let v2323 : Index := Scalar.indexCast c0_i32_1464
  let c0_i32_255 : BitVec 32 := 0#32
  let c1_i32_257 : BitVec 32 := 1#32
  let arg15 : BitVec 32 := Scf.iv c0_i32_255 c1_i32_257 k0_t2
  let v2324 : Index := Scalar.indexCast arg15
  let c848 : Index := 848#32
  ![0, v2324.toNat, 848]
def k0_off330 (k0_t2 : Fin k0_t2_loop.trips) : Fin 3 → Nat :=
  let c0_i32_1465 : BitVec 32 := 0#32
  let v2327 : Index := Scalar.indexCast c0_i32_1465
  let c0_i32_255 : BitVec 32 := 0#32
  let c1_i32_257 : BitVec 32 := 1#32
  let arg15 : BitVec 32 := Scf.iv c0_i32_255 c1_i32_257 k0_t2
  let v2328 : Index := Scalar.indexCast arg15
  let c864 : Index := 864#32
  ![0, v2328.toNat, 864]
def k0_off331 (k0_t2 : Fin k0_t2_loop.trips) : Fin 3 → Nat :=
  let c0_i32_1466 : BitVec 32 := 0#32
  let v2331 : Index := Scalar.indexCast c0_i32_1466
  let c0_i32_255 : BitVec 32 := 0#32
  let c1_i32_257 : BitVec 32 := 1#32
  let arg15 : BitVec 32 := Scf.iv c0_i32_255 c1_i32_257 k0_t2
  let v2332 : Index := Scalar.indexCast arg15
  let c880 : Index := 880#32
  ![0, v2332.toNat, 880]
def k0_off332 (k0_t2 : Fin k0_t2_loop.trips) : Fin 3 → Nat :=
  let c0_i32_1467 : BitVec 32 := 0#32
  let v2335 : Index := Scalar.indexCast c0_i32_1467
  let c0_i32_255 : BitVec 32 := 0#32
  let c1_i32_257 : BitVec 32 := 1#32
  let arg15 : BitVec 32 := Scf.iv c0_i32_255 c1_i32_257 k0_t2
  let v2336 : Index := Scalar.indexCast arg15
  let c896 : Index := 896#32
  ![0, v2336.toNat, 896]
def k0_off333 (k0_t2 : Fin k0_t2_loop.trips) : Fin 3 → Nat :=
  let c0_i32_1468 : BitVec 32 := 0#32
  let v2339 : Index := Scalar.indexCast c0_i32_1468
  let c0_i32_255 : BitVec 32 := 0#32
  let c1_i32_257 : BitVec 32 := 1#32
  let arg15 : BitVec 32 := Scf.iv c0_i32_255 c1_i32_257 k0_t2
  let v2340 : Index := Scalar.indexCast arg15
  let c912 : Index := 912#32
  ![0, v2340.toNat, 912]
def k0_off334 (k0_t2 : Fin k0_t2_loop.trips) : Fin 3 → Nat :=
  let c0_i32_1469 : BitVec 32 := 0#32
  let v2343 : Index := Scalar.indexCast c0_i32_1469
  let c0_i32_255 : BitVec 32 := 0#32
  let c1_i32_257 : BitVec 32 := 1#32
  let arg15 : BitVec 32 := Scf.iv c0_i32_255 c1_i32_257 k0_t2
  let v2344 : Index := Scalar.indexCast arg15
  let c928 : Index := 928#32
  ![0, v2344.toNat, 928]
def k0_off335 (k0_t2 : Fin k0_t2_loop.trips) : Fin 3 → Nat :=
  let c0_i32_1470 : BitVec 32 := 0#32
  let v2347 : Index := Scalar.indexCast c0_i32_1470
  let c0_i32_255 : BitVec 32 := 0#32
  let c1_i32_257 : BitVec 32 := 1#32
  let arg15 : BitVec 32 := Scf.iv c0_i32_255 c1_i32_257 k0_t2
  let v2348 : Index := Scalar.indexCast arg15
  let c944 : Index := 944#32
  ![0, v2348.toNat, 944]
def k0_off336 (k0_t2 : Fin k0_t2_loop.trips) : Fin 3 → Nat :=
  let c0_i32_1471 : BitVec 32 := 0#32
  let v2351 : Index := Scalar.indexCast c0_i32_1471
  let c0_i32_255 : BitVec 32 := 0#32
  let c1_i32_257 : BitVec 32 := 1#32
  let arg15 : BitVec 32 := Scf.iv c0_i32_255 c1_i32_257 k0_t2
  let v2352 : Index := Scalar.indexCast arg15
  let c960 : Index := 960#32
  ![0, v2352.toNat, 960]
def k0_off337 (k0_t2 : Fin k0_t2_loop.trips) : Fin 3 → Nat :=
  let c0_i32_1472 : BitVec 32 := 0#32
  let v2355 : Index := Scalar.indexCast c0_i32_1472
  let c0_i32_255 : BitVec 32 := 0#32
  let c1_i32_257 : BitVec 32 := 1#32
  let arg15 : BitVec 32 := Scf.iv c0_i32_255 c1_i32_257 k0_t2
  let v2356 : Index := Scalar.indexCast arg15
  let c976 : Index := 976#32
  ![0, v2356.toNat, 976]
def k0_off338 (k0_t2 : Fin k0_t2_loop.trips) : Fin 3 → Nat :=
  let c0_i32_1473 : BitVec 32 := 0#32
  let v2359 : Index := Scalar.indexCast c0_i32_1473
  let c0_i32_255 : BitVec 32 := 0#32
  let c1_i32_257 : BitVec 32 := 1#32
  let arg15 : BitVec 32 := Scf.iv c0_i32_255 c1_i32_257 k0_t2
  let v2360 : Index := Scalar.indexCast arg15
  let c992 : Index := 992#32
  ![0, v2360.toNat, 992]
def k0_off339 (k0_t2 : Fin k0_t2_loop.trips) : Fin 3 → Nat :=
  let c0_i32_1474 : BitVec 32 := 0#32
  let v2363 : Index := Scalar.indexCast c0_i32_1474
  let c0_i32_255 : BitVec 32 := 0#32
  let c1_i32_257 : BitVec 32 := 1#32
  let arg15 : BitVec 32 := Scf.iv c0_i32_255 c1_i32_257 k0_t2
  let v2364 : Index := Scalar.indexCast arg15
  let c1008 : Index := 1008#32
  ![0, v2364.toNat, 1008]
def k0_off340 (k0_t2 : Fin k0_t2_loop.trips) : Fin 4 → Nat :=
  let c0_i32_1475 : BitVec 32 := 0#32
  let v2367 : Index := Scalar.indexCast c0_i32_1475
  let c0_i32_1476 : BitVec 32 := 0#32
  let v2368 : Index := Scalar.indexCast c0_i32_1476
  let c0_i32_255 : BitVec 32 := 0#32
  let c1_i32_257 : BitVec 32 := 1#32
  let arg15 : BitVec 32 := Scf.iv c0_i32_255 c1_i32_257 k0_t2
  let v2369 : Index := Scalar.indexCast arg15
  let c512_1477 : Index := 512#32
  ![0, 0, v2369.toNat, 512]
def k0_off341 (k0_t2 : Fin k0_t2_loop.trips) : Fin 4 → Nat :=
  let c0_i32_1478 : BitVec 32 := 0#32
  let v2373 : Index := Scalar.indexCast c0_i32_1478
  let c0_i32_1479 : BitVec 32 := 0#32
  let v2374 : Index := Scalar.indexCast c0_i32_1479
  let c0_i32_255 : BitVec 32 := 0#32
  let c1_i32_257 : BitVec 32 := 1#32
  let arg15 : BitVec 32 := Scf.iv c0_i32_255 c1_i32_257 k0_t2
  let v2375 : Index := Scalar.indexCast arg15
  let c512_1480 : Index := 512#32
  ![0, 0, v2375.toNat, 512]
def k0_off342 (k0_t2 : Fin k0_t2_loop.trips) : Fin 4 → Nat :=
  let c0_i32_1481 : BitVec 32 := 0#32
  let v2379 : Index := Scalar.indexCast c0_i32_1481
  let c0_i32_1482 : BitVec 32 := 0#32
  let v2380 : Index := Scalar.indexCast c0_i32_1482
  let c0_i32_255 : BitVec 32 := 0#32
  let c1_i32_257 : BitVec 32 := 1#32
  let arg15 : BitVec 32 := Scf.iv c0_i32_255 c1_i32_257 k0_t2
  let v2381 : Index := Scalar.indexCast arg15
  let c528_1483 : Index := 528#32
  ![0, 0, v2381.toNat, 528]
def k0_off343 (k0_t2 : Fin k0_t2_loop.trips) : Fin 4 → Nat :=
  let c0_i32_1484 : BitVec 32 := 0#32
  let v2385 : Index := Scalar.indexCast c0_i32_1484
  let c0_i32_1485 : BitVec 32 := 0#32
  let v2386 : Index := Scalar.indexCast c0_i32_1485
  let c0_i32_255 : BitVec 32 := 0#32
  let c1_i32_257 : BitVec 32 := 1#32
  let arg15 : BitVec 32 := Scf.iv c0_i32_255 c1_i32_257 k0_t2
  let v2387 : Index := Scalar.indexCast arg15
  let c528_1486 : Index := 528#32
  ![0, 0, v2387.toNat, 528]
def k0_off344 (k0_t2 : Fin k0_t2_loop.trips) : Fin 4 → Nat :=
  let c0_i32_1487 : BitVec 32 := 0#32
  let v2391 : Index := Scalar.indexCast c0_i32_1487
  let c0_i32_1488 : BitVec 32 := 0#32
  let v2392 : Index := Scalar.indexCast c0_i32_1488
  let c0_i32_255 : BitVec 32 := 0#32
  let c1_i32_257 : BitVec 32 := 1#32
  let arg15 : BitVec 32 := Scf.iv c0_i32_255 c1_i32_257 k0_t2
  let v2393 : Index := Scalar.indexCast arg15
  let c544_1489 : Index := 544#32
  ![0, 0, v2393.toNat, 544]
def k0_off345 (k0_t2 : Fin k0_t2_loop.trips) : Fin 4 → Nat :=
  let c0_i32_1490 : BitVec 32 := 0#32
  let v2397 : Index := Scalar.indexCast c0_i32_1490
  let c0_i32_1491 : BitVec 32 := 0#32
  let v2398 : Index := Scalar.indexCast c0_i32_1491
  let c0_i32_255 : BitVec 32 := 0#32
  let c1_i32_257 : BitVec 32 := 1#32
  let arg15 : BitVec 32 := Scf.iv c0_i32_255 c1_i32_257 k0_t2
  let v2399 : Index := Scalar.indexCast arg15
  let c544_1492 : Index := 544#32
  ![0, 0, v2399.toNat, 544]
def k0_off346 (k0_t2 : Fin k0_t2_loop.trips) : Fin 4 → Nat :=
  let c0_i32_1493 : BitVec 32 := 0#32
  let v2403 : Index := Scalar.indexCast c0_i32_1493
  let c0_i32_1494 : BitVec 32 := 0#32
  let v2404 : Index := Scalar.indexCast c0_i32_1494
  let c0_i32_255 : BitVec 32 := 0#32
  let c1_i32_257 : BitVec 32 := 1#32
  let arg15 : BitVec 32 := Scf.iv c0_i32_255 c1_i32_257 k0_t2
  let v2405 : Index := Scalar.indexCast arg15
  let c560_1495 : Index := 560#32
  ![0, 0, v2405.toNat, 560]
def k0_off347 (k0_t2 : Fin k0_t2_loop.trips) : Fin 4 → Nat :=
  let c0_i32_1496 : BitVec 32 := 0#32
  let v2409 : Index := Scalar.indexCast c0_i32_1496
  let c0_i32_1497 : BitVec 32 := 0#32
  let v2410 : Index := Scalar.indexCast c0_i32_1497
  let c0_i32_255 : BitVec 32 := 0#32
  let c1_i32_257 : BitVec 32 := 1#32
  let arg15 : BitVec 32 := Scf.iv c0_i32_255 c1_i32_257 k0_t2
  let v2411 : Index := Scalar.indexCast arg15
  let c560_1498 : Index := 560#32
  ![0, 0, v2411.toNat, 560]
def k0_off348 (k0_t2 : Fin k0_t2_loop.trips) : Fin 4 → Nat :=
  let c0_i32_1499 : BitVec 32 := 0#32
  let v2415 : Index := Scalar.indexCast c0_i32_1499
  let c0_i32_1500 : BitVec 32 := 0#32
  let v2416 : Index := Scalar.indexCast c0_i32_1500
  let c0_i32_255 : BitVec 32 := 0#32
  let c1_i32_257 : BitVec 32 := 1#32
  let arg15 : BitVec 32 := Scf.iv c0_i32_255 c1_i32_257 k0_t2
  let v2417 : Index := Scalar.indexCast arg15
  let c576_1501 : Index := 576#32
  ![0, 0, v2417.toNat, 576]
def k0_off349 (k0_t2 : Fin k0_t2_loop.trips) : Fin 4 → Nat :=
  let c0_i32_1502 : BitVec 32 := 0#32
  let v2421 : Index := Scalar.indexCast c0_i32_1502
  let c0_i32_1503 : BitVec 32 := 0#32
  let v2422 : Index := Scalar.indexCast c0_i32_1503
  let c0_i32_255 : BitVec 32 := 0#32
  let c1_i32_257 : BitVec 32 := 1#32
  let arg15 : BitVec 32 := Scf.iv c0_i32_255 c1_i32_257 k0_t2
  let v2423 : Index := Scalar.indexCast arg15
  let c576_1504 : Index := 576#32
  ![0, 0, v2423.toNat, 576]
def k0_off350 (k0_t2 : Fin k0_t2_loop.trips) : Fin 4 → Nat :=
  let c0_i32_1505 : BitVec 32 := 0#32
  let v2427 : Index := Scalar.indexCast c0_i32_1505
  let c0_i32_1506 : BitVec 32 := 0#32
  let v2428 : Index := Scalar.indexCast c0_i32_1506
  let c0_i32_255 : BitVec 32 := 0#32
  let c1_i32_257 : BitVec 32 := 1#32
  let arg15 : BitVec 32 := Scf.iv c0_i32_255 c1_i32_257 k0_t2
  let v2429 : Index := Scalar.indexCast arg15
  let c592_1507 : Index := 592#32
  ![0, 0, v2429.toNat, 592]
def k0_off351 (k0_t2 : Fin k0_t2_loop.trips) : Fin 4 → Nat :=
  let c0_i32_1508 : BitVec 32 := 0#32
  let v2433 : Index := Scalar.indexCast c0_i32_1508
  let c0_i32_1509 : BitVec 32 := 0#32
  let v2434 : Index := Scalar.indexCast c0_i32_1509
  let c0_i32_255 : BitVec 32 := 0#32
  let c1_i32_257 : BitVec 32 := 1#32
  let arg15 : BitVec 32 := Scf.iv c0_i32_255 c1_i32_257 k0_t2
  let v2435 : Index := Scalar.indexCast arg15
  let c592_1510 : Index := 592#32
  ![0, 0, v2435.toNat, 592]
def k0_off352 (k0_t2 : Fin k0_t2_loop.trips) : Fin 4 → Nat :=
  let c0_i32_1511 : BitVec 32 := 0#32
  let v2439 : Index := Scalar.indexCast c0_i32_1511
  let c0_i32_1512 : BitVec 32 := 0#32
  let v2440 : Index := Scalar.indexCast c0_i32_1512
  let c0_i32_255 : BitVec 32 := 0#32
  let c1_i32_257 : BitVec 32 := 1#32
  let arg15 : BitVec 32 := Scf.iv c0_i32_255 c1_i32_257 k0_t2
  let v2441 : Index := Scalar.indexCast arg15
  let c608_1513 : Index := 608#32
  ![0, 0, v2441.toNat, 608]
def k0_off353 (k0_t2 : Fin k0_t2_loop.trips) : Fin 4 → Nat :=
  let c0_i32_1514 : BitVec 32 := 0#32
  let v2445 : Index := Scalar.indexCast c0_i32_1514
  let c0_i32_1515 : BitVec 32 := 0#32
  let v2446 : Index := Scalar.indexCast c0_i32_1515
  let c0_i32_255 : BitVec 32 := 0#32
  let c1_i32_257 : BitVec 32 := 1#32
  let arg15 : BitVec 32 := Scf.iv c0_i32_255 c1_i32_257 k0_t2
  let v2447 : Index := Scalar.indexCast arg15
  let c608_1516 : Index := 608#32
  ![0, 0, v2447.toNat, 608]
def k0_off354 (k0_t2 : Fin k0_t2_loop.trips) : Fin 4 → Nat :=
  let c0_i32_1517 : BitVec 32 := 0#32
  let v2451 : Index := Scalar.indexCast c0_i32_1517
  let c0_i32_1518 : BitVec 32 := 0#32
  let v2452 : Index := Scalar.indexCast c0_i32_1518
  let c0_i32_255 : BitVec 32 := 0#32
  let c1_i32_257 : BitVec 32 := 1#32
  let arg15 : BitVec 32 := Scf.iv c0_i32_255 c1_i32_257 k0_t2
  let v2453 : Index := Scalar.indexCast arg15
  let c624_1519 : Index := 624#32
  ![0, 0, v2453.toNat, 624]
def k0_off355 (k0_t2 : Fin k0_t2_loop.trips) : Fin 4 → Nat :=
  let c0_i32_1520 : BitVec 32 := 0#32
  let v2457 : Index := Scalar.indexCast c0_i32_1520
  let c0_i32_1521 : BitVec 32 := 0#32
  let v2458 : Index := Scalar.indexCast c0_i32_1521
  let c0_i32_255 : BitVec 32 := 0#32
  let c1_i32_257 : BitVec 32 := 1#32
  let arg15 : BitVec 32 := Scf.iv c0_i32_255 c1_i32_257 k0_t2
  let v2459 : Index := Scalar.indexCast arg15
  let c624_1522 : Index := 624#32
  ![0, 0, v2459.toNat, 624]
def k0_off356 (k0_t2 : Fin k0_t2_loop.trips) : Fin 4 → Nat :=
  let c0_i32_1523 : BitVec 32 := 0#32
  let v2463 : Index := Scalar.indexCast c0_i32_1523
  let c0_i32_1524 : BitVec 32 := 0#32
  let v2464 : Index := Scalar.indexCast c0_i32_1524
  let c0_i32_255 : BitVec 32 := 0#32
  let c1_i32_257 : BitVec 32 := 1#32
  let arg15 : BitVec 32 := Scf.iv c0_i32_255 c1_i32_257 k0_t2
  let v2465 : Index := Scalar.indexCast arg15
  let c640_1525 : Index := 640#32
  ![0, 0, v2465.toNat, 640]
def k0_off357 (k0_t2 : Fin k0_t2_loop.trips) : Fin 4 → Nat :=
  let c0_i32_1526 : BitVec 32 := 0#32
  let v2469 : Index := Scalar.indexCast c0_i32_1526
  let c0_i32_1527 : BitVec 32 := 0#32
  let v2470 : Index := Scalar.indexCast c0_i32_1527
  let c0_i32_255 : BitVec 32 := 0#32
  let c1_i32_257 : BitVec 32 := 1#32
  let arg15 : BitVec 32 := Scf.iv c0_i32_255 c1_i32_257 k0_t2
  let v2471 : Index := Scalar.indexCast arg15
  let c640_1528 : Index := 640#32
  ![0, 0, v2471.toNat, 640]
def k0_off358 (k0_t2 : Fin k0_t2_loop.trips) : Fin 4 → Nat :=
  let c0_i32_1529 : BitVec 32 := 0#32
  let v2475 : Index := Scalar.indexCast c0_i32_1529
  let c0_i32_1530 : BitVec 32 := 0#32
  let v2476 : Index := Scalar.indexCast c0_i32_1530
  let c0_i32_255 : BitVec 32 := 0#32
  let c1_i32_257 : BitVec 32 := 1#32
  let arg15 : BitVec 32 := Scf.iv c0_i32_255 c1_i32_257 k0_t2
  let v2477 : Index := Scalar.indexCast arg15
  let c656_1531 : Index := 656#32
  ![0, 0, v2477.toNat, 656]
def k0_off359 (k0_t2 : Fin k0_t2_loop.trips) : Fin 4 → Nat :=
  let c0_i32_1532 : BitVec 32 := 0#32
  let v2481 : Index := Scalar.indexCast c0_i32_1532
  let c0_i32_1533 : BitVec 32 := 0#32
  let v2482 : Index := Scalar.indexCast c0_i32_1533
  let c0_i32_255 : BitVec 32 := 0#32
  let c1_i32_257 : BitVec 32 := 1#32
  let arg15 : BitVec 32 := Scf.iv c0_i32_255 c1_i32_257 k0_t2
  let v2483 : Index := Scalar.indexCast arg15
  let c656_1534 : Index := 656#32
  ![0, 0, v2483.toNat, 656]
def k0_off360 (k0_t2 : Fin k0_t2_loop.trips) : Fin 4 → Nat :=
  let c0_i32_1535 : BitVec 32 := 0#32
  let v2487 : Index := Scalar.indexCast c0_i32_1535
  let c0_i32_1536 : BitVec 32 := 0#32
  let v2488 : Index := Scalar.indexCast c0_i32_1536
  let c0_i32_255 : BitVec 32 := 0#32
  let c1_i32_257 : BitVec 32 := 1#32
  let arg15 : BitVec 32 := Scf.iv c0_i32_255 c1_i32_257 k0_t2
  let v2489 : Index := Scalar.indexCast arg15
  let c672_1537 : Index := 672#32
  ![0, 0, v2489.toNat, 672]
def k0_off361 (k0_t2 : Fin k0_t2_loop.trips) : Fin 4 → Nat :=
  let c0_i32_1538 : BitVec 32 := 0#32
  let v2493 : Index := Scalar.indexCast c0_i32_1538
  let c0_i32_1539 : BitVec 32 := 0#32
  let v2494 : Index := Scalar.indexCast c0_i32_1539
  let c0_i32_255 : BitVec 32 := 0#32
  let c1_i32_257 : BitVec 32 := 1#32
  let arg15 : BitVec 32 := Scf.iv c0_i32_255 c1_i32_257 k0_t2
  let v2495 : Index := Scalar.indexCast arg15
  let c672_1540 : Index := 672#32
  ![0, 0, v2495.toNat, 672]
def k0_off362 (k0_t2 : Fin k0_t2_loop.trips) : Fin 4 → Nat :=
  let c0_i32_1541 : BitVec 32 := 0#32
  let v2499 : Index := Scalar.indexCast c0_i32_1541
  let c0_i32_1542 : BitVec 32 := 0#32
  let v2500 : Index := Scalar.indexCast c0_i32_1542
  let c0_i32_255 : BitVec 32 := 0#32
  let c1_i32_257 : BitVec 32 := 1#32
  let arg15 : BitVec 32 := Scf.iv c0_i32_255 c1_i32_257 k0_t2
  let v2501 : Index := Scalar.indexCast arg15
  let c688_1543 : Index := 688#32
  ![0, 0, v2501.toNat, 688]
def k0_off363 (k0_t2 : Fin k0_t2_loop.trips) : Fin 4 → Nat :=
  let c0_i32_1544 : BitVec 32 := 0#32
  let v2505 : Index := Scalar.indexCast c0_i32_1544
  let c0_i32_1545 : BitVec 32 := 0#32
  let v2506 : Index := Scalar.indexCast c0_i32_1545
  let c0_i32_255 : BitVec 32 := 0#32
  let c1_i32_257 : BitVec 32 := 1#32
  let arg15 : BitVec 32 := Scf.iv c0_i32_255 c1_i32_257 k0_t2
  let v2507 : Index := Scalar.indexCast arg15
  let c688_1546 : Index := 688#32
  ![0, 0, v2507.toNat, 688]
def k0_off364 (k0_t2 : Fin k0_t2_loop.trips) : Fin 4 → Nat :=
  let c0_i32_1547 : BitVec 32 := 0#32
  let v2511 : Index := Scalar.indexCast c0_i32_1547
  let c0_i32_1548 : BitVec 32 := 0#32
  let v2512 : Index := Scalar.indexCast c0_i32_1548
  let c0_i32_255 : BitVec 32 := 0#32
  let c1_i32_257 : BitVec 32 := 1#32
  let arg15 : BitVec 32 := Scf.iv c0_i32_255 c1_i32_257 k0_t2
  let v2513 : Index := Scalar.indexCast arg15
  let c704_1549 : Index := 704#32
  ![0, 0, v2513.toNat, 704]
def k0_off365 (k0_t2 : Fin k0_t2_loop.trips) : Fin 4 → Nat :=
  let c0_i32_1550 : BitVec 32 := 0#32
  let v2517 : Index := Scalar.indexCast c0_i32_1550
  let c0_i32_1551 : BitVec 32 := 0#32
  let v2518 : Index := Scalar.indexCast c0_i32_1551
  let c0_i32_255 : BitVec 32 := 0#32
  let c1_i32_257 : BitVec 32 := 1#32
  let arg15 : BitVec 32 := Scf.iv c0_i32_255 c1_i32_257 k0_t2
  let v2519 : Index := Scalar.indexCast arg15
  let c704_1552 : Index := 704#32
  ![0, 0, v2519.toNat, 704]
def k0_off366 (k0_t2 : Fin k0_t2_loop.trips) : Fin 4 → Nat :=
  let c0_i32_1553 : BitVec 32 := 0#32
  let v2523 : Index := Scalar.indexCast c0_i32_1553
  let c0_i32_1554 : BitVec 32 := 0#32
  let v2524 : Index := Scalar.indexCast c0_i32_1554
  let c0_i32_255 : BitVec 32 := 0#32
  let c1_i32_257 : BitVec 32 := 1#32
  let arg15 : BitVec 32 := Scf.iv c0_i32_255 c1_i32_257 k0_t2
  let v2525 : Index := Scalar.indexCast arg15
  let c720_1555 : Index := 720#32
  ![0, 0, v2525.toNat, 720]
def k0_off367 (k0_t2 : Fin k0_t2_loop.trips) : Fin 4 → Nat :=
  let c0_i32_1556 : BitVec 32 := 0#32
  let v2529 : Index := Scalar.indexCast c0_i32_1556
  let c0_i32_1557 : BitVec 32 := 0#32
  let v2530 : Index := Scalar.indexCast c0_i32_1557
  let c0_i32_255 : BitVec 32 := 0#32
  let c1_i32_257 : BitVec 32 := 1#32
  let arg15 : BitVec 32 := Scf.iv c0_i32_255 c1_i32_257 k0_t2
  let v2531 : Index := Scalar.indexCast arg15
  let c720_1558 : Index := 720#32
  ![0, 0, v2531.toNat, 720]
def k0_off368 (k0_t2 : Fin k0_t2_loop.trips) : Fin 4 → Nat :=
  let c0_i32_1559 : BitVec 32 := 0#32
  let v2535 : Index := Scalar.indexCast c0_i32_1559
  let c0_i32_1560 : BitVec 32 := 0#32
  let v2536 : Index := Scalar.indexCast c0_i32_1560
  let c0_i32_255 : BitVec 32 := 0#32
  let c1_i32_257 : BitVec 32 := 1#32
  let arg15 : BitVec 32 := Scf.iv c0_i32_255 c1_i32_257 k0_t2
  let v2537 : Index := Scalar.indexCast arg15
  let c736_1561 : Index := 736#32
  ![0, 0, v2537.toNat, 736]
def k0_off369 (k0_t2 : Fin k0_t2_loop.trips) : Fin 4 → Nat :=
  let c0_i32_1562 : BitVec 32 := 0#32
  let v2541 : Index := Scalar.indexCast c0_i32_1562
  let c0_i32_1563 : BitVec 32 := 0#32
  let v2542 : Index := Scalar.indexCast c0_i32_1563
  let c0_i32_255 : BitVec 32 := 0#32
  let c1_i32_257 : BitVec 32 := 1#32
  let arg15 : BitVec 32 := Scf.iv c0_i32_255 c1_i32_257 k0_t2
  let v2543 : Index := Scalar.indexCast arg15
  let c736_1564 : Index := 736#32
  ![0, 0, v2543.toNat, 736]
def k0_off370 (k0_t2 : Fin k0_t2_loop.trips) : Fin 4 → Nat :=
  let c0_i32_1565 : BitVec 32 := 0#32
  let v2547 : Index := Scalar.indexCast c0_i32_1565
  let c0_i32_1566 : BitVec 32 := 0#32
  let v2548 : Index := Scalar.indexCast c0_i32_1566
  let c0_i32_255 : BitVec 32 := 0#32
  let c1_i32_257 : BitVec 32 := 1#32
  let arg15 : BitVec 32 := Scf.iv c0_i32_255 c1_i32_257 k0_t2
  let v2549 : Index := Scalar.indexCast arg15
  let c752_1567 : Index := 752#32
  ![0, 0, v2549.toNat, 752]
def k0_off371 (k0_t2 : Fin k0_t2_loop.trips) : Fin 4 → Nat :=
  let c0_i32_1568 : BitVec 32 := 0#32
  let v2553 : Index := Scalar.indexCast c0_i32_1568
  let c0_i32_1569 : BitVec 32 := 0#32
  let v2554 : Index := Scalar.indexCast c0_i32_1569
  let c0_i32_255 : BitVec 32 := 0#32
  let c1_i32_257 : BitVec 32 := 1#32
  let arg15 : BitVec 32 := Scf.iv c0_i32_255 c1_i32_257 k0_t2
  let v2555 : Index := Scalar.indexCast arg15
  let c752_1570 : Index := 752#32
  ![0, 0, v2555.toNat, 752]
def k0_off372 (k0_t2 : Fin k0_t2_loop.trips) : Fin 4 → Nat :=
  let c0_i32_1571 : BitVec 32 := 0#32
  let v2559 : Index := Scalar.indexCast c0_i32_1571
  let c0_i32_1572 : BitVec 32 := 0#32
  let v2560 : Index := Scalar.indexCast c0_i32_1572
  let c0_i32_255 : BitVec 32 := 0#32
  let c1_i32_257 : BitVec 32 := 1#32
  let arg15 : BitVec 32 := Scf.iv c0_i32_255 c1_i32_257 k0_t2
  let v2561 : Index := Scalar.indexCast arg15
  let c768_1573 : Index := 768#32
  ![0, 0, v2561.toNat, 768]
def k0_off373 (k0_t2 : Fin k0_t2_loop.trips) : Fin 4 → Nat :=
  let c0_i32_1574 : BitVec 32 := 0#32
  let v2565 : Index := Scalar.indexCast c0_i32_1574
  let c0_i32_1575 : BitVec 32 := 0#32
  let v2566 : Index := Scalar.indexCast c0_i32_1575
  let c0_i32_255 : BitVec 32 := 0#32
  let c1_i32_257 : BitVec 32 := 1#32
  let arg15 : BitVec 32 := Scf.iv c0_i32_255 c1_i32_257 k0_t2
  let v2567 : Index := Scalar.indexCast arg15
  let c768_1576 : Index := 768#32
  ![0, 0, v2567.toNat, 768]
def k0_off374 (k0_t2 : Fin k0_t2_loop.trips) : Fin 4 → Nat :=
  let c0_i32_1577 : BitVec 32 := 0#32
  let v2571 : Index := Scalar.indexCast c0_i32_1577
  let c0_i32_1578 : BitVec 32 := 0#32
  let v2572 : Index := Scalar.indexCast c0_i32_1578
  let c0_i32_255 : BitVec 32 := 0#32
  let c1_i32_257 : BitVec 32 := 1#32
  let arg15 : BitVec 32 := Scf.iv c0_i32_255 c1_i32_257 k0_t2
  let v2573 : Index := Scalar.indexCast arg15
  let c784_1579 : Index := 784#32
  ![0, 0, v2573.toNat, 784]
def k0_off375 (k0_t2 : Fin k0_t2_loop.trips) : Fin 4 → Nat :=
  let c0_i32_1580 : BitVec 32 := 0#32
  let v2577 : Index := Scalar.indexCast c0_i32_1580
  let c0_i32_1581 : BitVec 32 := 0#32
  let v2578 : Index := Scalar.indexCast c0_i32_1581
  let c0_i32_255 : BitVec 32 := 0#32
  let c1_i32_257 : BitVec 32 := 1#32
  let arg15 : BitVec 32 := Scf.iv c0_i32_255 c1_i32_257 k0_t2
  let v2579 : Index := Scalar.indexCast arg15
  let c784_1582 : Index := 784#32
  ![0, 0, v2579.toNat, 784]
def k0_off376 (k0_t2 : Fin k0_t2_loop.trips) : Fin 4 → Nat :=
  let c0_i32_1583 : BitVec 32 := 0#32
  let v2583 : Index := Scalar.indexCast c0_i32_1583
  let c0_i32_1584 : BitVec 32 := 0#32
  let v2584 : Index := Scalar.indexCast c0_i32_1584
  let c0_i32_255 : BitVec 32 := 0#32
  let c1_i32_257 : BitVec 32 := 1#32
  let arg15 : BitVec 32 := Scf.iv c0_i32_255 c1_i32_257 k0_t2
  let v2585 : Index := Scalar.indexCast arg15
  let c800_1585 : Index := 800#32
  ![0, 0, v2585.toNat, 800]
def k0_off377 (k0_t2 : Fin k0_t2_loop.trips) : Fin 4 → Nat :=
  let c0_i32_1586 : BitVec 32 := 0#32
  let v2589 : Index := Scalar.indexCast c0_i32_1586
  let c0_i32_1587 : BitVec 32 := 0#32
  let v2590 : Index := Scalar.indexCast c0_i32_1587
  let c0_i32_255 : BitVec 32 := 0#32
  let c1_i32_257 : BitVec 32 := 1#32
  let arg15 : BitVec 32 := Scf.iv c0_i32_255 c1_i32_257 k0_t2
  let v2591 : Index := Scalar.indexCast arg15
  let c800_1588 : Index := 800#32
  ![0, 0, v2591.toNat, 800]
def k0_off378 (k0_t2 : Fin k0_t2_loop.trips) : Fin 4 → Nat :=
  let c0_i32_1589 : BitVec 32 := 0#32
  let v2595 : Index := Scalar.indexCast c0_i32_1589
  let c0_i32_1590 : BitVec 32 := 0#32
  let v2596 : Index := Scalar.indexCast c0_i32_1590
  let c0_i32_255 : BitVec 32 := 0#32
  let c1_i32_257 : BitVec 32 := 1#32
  let arg15 : BitVec 32 := Scf.iv c0_i32_255 c1_i32_257 k0_t2
  let v2597 : Index := Scalar.indexCast arg15
  let c816_1591 : Index := 816#32
  ![0, 0, v2597.toNat, 816]
def k0_off379 (k0_t2 : Fin k0_t2_loop.trips) : Fin 4 → Nat :=
  let c0_i32_1592 : BitVec 32 := 0#32
  let v2601 : Index := Scalar.indexCast c0_i32_1592
  let c0_i32_1593 : BitVec 32 := 0#32
  let v2602 : Index := Scalar.indexCast c0_i32_1593
  let c0_i32_255 : BitVec 32 := 0#32
  let c1_i32_257 : BitVec 32 := 1#32
  let arg15 : BitVec 32 := Scf.iv c0_i32_255 c1_i32_257 k0_t2
  let v2603 : Index := Scalar.indexCast arg15
  let c816_1594 : Index := 816#32
  ![0, 0, v2603.toNat, 816]
def k0_off380 (k0_t2 : Fin k0_t2_loop.trips) : Fin 4 → Nat :=
  let c0_i32_1595 : BitVec 32 := 0#32
  let v2607 : Index := Scalar.indexCast c0_i32_1595
  let c0_i32_1596 : BitVec 32 := 0#32
  let v2608 : Index := Scalar.indexCast c0_i32_1596
  let c0_i32_255 : BitVec 32 := 0#32
  let c1_i32_257 : BitVec 32 := 1#32
  let arg15 : BitVec 32 := Scf.iv c0_i32_255 c1_i32_257 k0_t2
  let v2609 : Index := Scalar.indexCast arg15
  let c832_1597 : Index := 832#32
  ![0, 0, v2609.toNat, 832]
def k0_off381 (k0_t2 : Fin k0_t2_loop.trips) : Fin 4 → Nat :=
  let c0_i32_1598 : BitVec 32 := 0#32
  let v2613 : Index := Scalar.indexCast c0_i32_1598
  let c0_i32_1599 : BitVec 32 := 0#32
  let v2614 : Index := Scalar.indexCast c0_i32_1599
  let c0_i32_255 : BitVec 32 := 0#32
  let c1_i32_257 : BitVec 32 := 1#32
  let arg15 : BitVec 32 := Scf.iv c0_i32_255 c1_i32_257 k0_t2
  let v2615 : Index := Scalar.indexCast arg15
  let c832_1600 : Index := 832#32
  ![0, 0, v2615.toNat, 832]
def k0_off382 (k0_t2 : Fin k0_t2_loop.trips) : Fin 4 → Nat :=
  let c0_i32_1601 : BitVec 32 := 0#32
  let v2619 : Index := Scalar.indexCast c0_i32_1601
  let c0_i32_1602 : BitVec 32 := 0#32
  let v2620 : Index := Scalar.indexCast c0_i32_1602
  let c0_i32_255 : BitVec 32 := 0#32
  let c1_i32_257 : BitVec 32 := 1#32
  let arg15 : BitVec 32 := Scf.iv c0_i32_255 c1_i32_257 k0_t2
  let v2621 : Index := Scalar.indexCast arg15
  let c848_1603 : Index := 848#32
  ![0, 0, v2621.toNat, 848]
def k0_off383 (k0_t2 : Fin k0_t2_loop.trips) : Fin 4 → Nat :=
  let c0_i32_1604 : BitVec 32 := 0#32
  let v2625 : Index := Scalar.indexCast c0_i32_1604
  let c0_i32_1605 : BitVec 32 := 0#32
  let v2626 : Index := Scalar.indexCast c0_i32_1605
  let c0_i32_255 : BitVec 32 := 0#32
  let c1_i32_257 : BitVec 32 := 1#32
  let arg15 : BitVec 32 := Scf.iv c0_i32_255 c1_i32_257 k0_t2
  let v2627 : Index := Scalar.indexCast arg15
  let c848_1606 : Index := 848#32
  ![0, 0, v2627.toNat, 848]
def k0_off384 (k0_t2 : Fin k0_t2_loop.trips) : Fin 4 → Nat :=
  let c0_i32_1607 : BitVec 32 := 0#32
  let v2631 : Index := Scalar.indexCast c0_i32_1607
  let c0_i32_1608 : BitVec 32 := 0#32
  let v2632 : Index := Scalar.indexCast c0_i32_1608
  let c0_i32_255 : BitVec 32 := 0#32
  let c1_i32_257 : BitVec 32 := 1#32
  let arg15 : BitVec 32 := Scf.iv c0_i32_255 c1_i32_257 k0_t2
  let v2633 : Index := Scalar.indexCast arg15
  let c864_1609 : Index := 864#32
  ![0, 0, v2633.toNat, 864]
def k0_off385 (k0_t2 : Fin k0_t2_loop.trips) : Fin 4 → Nat :=
  let c0_i32_1610 : BitVec 32 := 0#32
  let v2637 : Index := Scalar.indexCast c0_i32_1610
  let c0_i32_1611 : BitVec 32 := 0#32
  let v2638 : Index := Scalar.indexCast c0_i32_1611
  let c0_i32_255 : BitVec 32 := 0#32
  let c1_i32_257 : BitVec 32 := 1#32
  let arg15 : BitVec 32 := Scf.iv c0_i32_255 c1_i32_257 k0_t2
  let v2639 : Index := Scalar.indexCast arg15
  let c864_1612 : Index := 864#32
  ![0, 0, v2639.toNat, 864]
def k0_off386 (k0_t2 : Fin k0_t2_loop.trips) : Fin 4 → Nat :=
  let c0_i32_1613 : BitVec 32 := 0#32
  let v2643 : Index := Scalar.indexCast c0_i32_1613
  let c0_i32_1614 : BitVec 32 := 0#32
  let v2644 : Index := Scalar.indexCast c0_i32_1614
  let c0_i32_255 : BitVec 32 := 0#32
  let c1_i32_257 : BitVec 32 := 1#32
  let arg15 : BitVec 32 := Scf.iv c0_i32_255 c1_i32_257 k0_t2
  let v2645 : Index := Scalar.indexCast arg15
  let c880_1615 : Index := 880#32
  ![0, 0, v2645.toNat, 880]
def k0_off387 (k0_t2 : Fin k0_t2_loop.trips) : Fin 4 → Nat :=
  let c0_i32_1616 : BitVec 32 := 0#32
  let v2649 : Index := Scalar.indexCast c0_i32_1616
  let c0_i32_1617 : BitVec 32 := 0#32
  let v2650 : Index := Scalar.indexCast c0_i32_1617
  let c0_i32_255 : BitVec 32 := 0#32
  let c1_i32_257 : BitVec 32 := 1#32
  let arg15 : BitVec 32 := Scf.iv c0_i32_255 c1_i32_257 k0_t2
  let v2651 : Index := Scalar.indexCast arg15
  let c880_1618 : Index := 880#32
  ![0, 0, v2651.toNat, 880]
def k0_off388 (k0_t2 : Fin k0_t2_loop.trips) : Fin 4 → Nat :=
  let c0_i32_1619 : BitVec 32 := 0#32
  let v2655 : Index := Scalar.indexCast c0_i32_1619
  let c0_i32_1620 : BitVec 32 := 0#32
  let v2656 : Index := Scalar.indexCast c0_i32_1620
  let c0_i32_255 : BitVec 32 := 0#32
  let c1_i32_257 : BitVec 32 := 1#32
  let arg15 : BitVec 32 := Scf.iv c0_i32_255 c1_i32_257 k0_t2
  let v2657 : Index := Scalar.indexCast arg15
  let c896_1621 : Index := 896#32
  ![0, 0, v2657.toNat, 896]
def k0_off389 (k0_t2 : Fin k0_t2_loop.trips) : Fin 4 → Nat :=
  let c0_i32_1622 : BitVec 32 := 0#32
  let v2661 : Index := Scalar.indexCast c0_i32_1622
  let c0_i32_1623 : BitVec 32 := 0#32
  let v2662 : Index := Scalar.indexCast c0_i32_1623
  let c0_i32_255 : BitVec 32 := 0#32
  let c1_i32_257 : BitVec 32 := 1#32
  let arg15 : BitVec 32 := Scf.iv c0_i32_255 c1_i32_257 k0_t2
  let v2663 : Index := Scalar.indexCast arg15
  let c896_1624 : Index := 896#32
  ![0, 0, v2663.toNat, 896]
def k0_off390 (k0_t2 : Fin k0_t2_loop.trips) : Fin 4 → Nat :=
  let c0_i32_1625 : BitVec 32 := 0#32
  let v2667 : Index := Scalar.indexCast c0_i32_1625
  let c0_i32_1626 : BitVec 32 := 0#32
  let v2668 : Index := Scalar.indexCast c0_i32_1626
  let c0_i32_255 : BitVec 32 := 0#32
  let c1_i32_257 : BitVec 32 := 1#32
  let arg15 : BitVec 32 := Scf.iv c0_i32_255 c1_i32_257 k0_t2
  let v2669 : Index := Scalar.indexCast arg15
  let c912_1627 : Index := 912#32
  ![0, 0, v2669.toNat, 912]
def k0_off391 (k0_t2 : Fin k0_t2_loop.trips) : Fin 4 → Nat :=
  let c0_i32_1628 : BitVec 32 := 0#32
  let v2673 : Index := Scalar.indexCast c0_i32_1628
  let c0_i32_1629 : BitVec 32 := 0#32
  let v2674 : Index := Scalar.indexCast c0_i32_1629
  let c0_i32_255 : BitVec 32 := 0#32
  let c1_i32_257 : BitVec 32 := 1#32
  let arg15 : BitVec 32 := Scf.iv c0_i32_255 c1_i32_257 k0_t2
  let v2675 : Index := Scalar.indexCast arg15
  let c912_1630 : Index := 912#32
  ![0, 0, v2675.toNat, 912]
def k0_off392 (k0_t2 : Fin k0_t2_loop.trips) : Fin 4 → Nat :=
  let c0_i32_1631 : BitVec 32 := 0#32
  let v2679 : Index := Scalar.indexCast c0_i32_1631
  let c0_i32_1632 : BitVec 32 := 0#32
  let v2680 : Index := Scalar.indexCast c0_i32_1632
  let c0_i32_255 : BitVec 32 := 0#32
  let c1_i32_257 : BitVec 32 := 1#32
  let arg15 : BitVec 32 := Scf.iv c0_i32_255 c1_i32_257 k0_t2
  let v2681 : Index := Scalar.indexCast arg15
  let c928_1633 : Index := 928#32
  ![0, 0, v2681.toNat, 928]
def k0_off393 (k0_t2 : Fin k0_t2_loop.trips) : Fin 4 → Nat :=
  let c0_i32_1634 : BitVec 32 := 0#32
  let v2685 : Index := Scalar.indexCast c0_i32_1634
  let c0_i32_1635 : BitVec 32 := 0#32
  let v2686 : Index := Scalar.indexCast c0_i32_1635
  let c0_i32_255 : BitVec 32 := 0#32
  let c1_i32_257 : BitVec 32 := 1#32
  let arg15 : BitVec 32 := Scf.iv c0_i32_255 c1_i32_257 k0_t2
  let v2687 : Index := Scalar.indexCast arg15
  let c928_1636 : Index := 928#32
  ![0, 0, v2687.toNat, 928]
def k0_off394 (k0_t2 : Fin k0_t2_loop.trips) : Fin 4 → Nat :=
  let c0_i32_1637 : BitVec 32 := 0#32
  let v2691 : Index := Scalar.indexCast c0_i32_1637
  let c0_i32_1638 : BitVec 32 := 0#32
  let v2692 : Index := Scalar.indexCast c0_i32_1638
  let c0_i32_255 : BitVec 32 := 0#32
  let c1_i32_257 : BitVec 32 := 1#32
  let arg15 : BitVec 32 := Scf.iv c0_i32_255 c1_i32_257 k0_t2
  let v2693 : Index := Scalar.indexCast arg15
  let c944_1639 : Index := 944#32
  ![0, 0, v2693.toNat, 944]
def k0_off395 (k0_t2 : Fin k0_t2_loop.trips) : Fin 4 → Nat :=
  let c0_i32_1640 : BitVec 32 := 0#32
  let v2697 : Index := Scalar.indexCast c0_i32_1640
  let c0_i32_1641 : BitVec 32 := 0#32
  let v2698 : Index := Scalar.indexCast c0_i32_1641
  let c0_i32_255 : BitVec 32 := 0#32
  let c1_i32_257 : BitVec 32 := 1#32
  let arg15 : BitVec 32 := Scf.iv c0_i32_255 c1_i32_257 k0_t2
  let v2699 : Index := Scalar.indexCast arg15
  let c944_1642 : Index := 944#32
  ![0, 0, v2699.toNat, 944]
def k0_off396 (k0_t2 : Fin k0_t2_loop.trips) : Fin 4 → Nat :=
  let c0_i32_1643 : BitVec 32 := 0#32
  let v2703 : Index := Scalar.indexCast c0_i32_1643
  let c0_i32_1644 : BitVec 32 := 0#32
  let v2704 : Index := Scalar.indexCast c0_i32_1644
  let c0_i32_255 : BitVec 32 := 0#32
  let c1_i32_257 : BitVec 32 := 1#32
  let arg15 : BitVec 32 := Scf.iv c0_i32_255 c1_i32_257 k0_t2
  let v2705 : Index := Scalar.indexCast arg15
  let c960_1645 : Index := 960#32
  ![0, 0, v2705.toNat, 960]
def k0_off397 (k0_t2 : Fin k0_t2_loop.trips) : Fin 4 → Nat :=
  let c0_i32_1646 : BitVec 32 := 0#32
  let v2709 : Index := Scalar.indexCast c0_i32_1646
  let c0_i32_1647 : BitVec 32 := 0#32
  let v2710 : Index := Scalar.indexCast c0_i32_1647
  let c0_i32_255 : BitVec 32 := 0#32
  let c1_i32_257 : BitVec 32 := 1#32
  let arg15 : BitVec 32 := Scf.iv c0_i32_255 c1_i32_257 k0_t2
  let v2711 : Index := Scalar.indexCast arg15
  let c960_1648 : Index := 960#32
  ![0, 0, v2711.toNat, 960]
def k0_off398 (k0_t2 : Fin k0_t2_loop.trips) : Fin 4 → Nat :=
  let c0_i32_1649 : BitVec 32 := 0#32
  let v2715 : Index := Scalar.indexCast c0_i32_1649
  let c0_i32_1650 : BitVec 32 := 0#32
  let v2716 : Index := Scalar.indexCast c0_i32_1650
  let c0_i32_255 : BitVec 32 := 0#32
  let c1_i32_257 : BitVec 32 := 1#32
  let arg15 : BitVec 32 := Scf.iv c0_i32_255 c1_i32_257 k0_t2
  let v2717 : Index := Scalar.indexCast arg15
  let c976_1651 : Index := 976#32
  ![0, 0, v2717.toNat, 976]
def k0_off399 (k0_t2 : Fin k0_t2_loop.trips) : Fin 4 → Nat :=
  let c0_i32_1652 : BitVec 32 := 0#32
  let v2721 : Index := Scalar.indexCast c0_i32_1652
  let c0_i32_1653 : BitVec 32 := 0#32
  let v2722 : Index := Scalar.indexCast c0_i32_1653
  let c0_i32_255 : BitVec 32 := 0#32
  let c1_i32_257 : BitVec 32 := 1#32
  let arg15 : BitVec 32 := Scf.iv c0_i32_255 c1_i32_257 k0_t2
  let v2723 : Index := Scalar.indexCast arg15
  let c976_1654 : Index := 976#32
  ![0, 0, v2723.toNat, 976]
def k0_off400 (k0_t2 : Fin k0_t2_loop.trips) : Fin 4 → Nat :=
  let c0_i32_1655 : BitVec 32 := 0#32
  let v2727 : Index := Scalar.indexCast c0_i32_1655
  let c0_i32_1656 : BitVec 32 := 0#32
  let v2728 : Index := Scalar.indexCast c0_i32_1656
  let c0_i32_255 : BitVec 32 := 0#32
  let c1_i32_257 : BitVec 32 := 1#32
  let arg15 : BitVec 32 := Scf.iv c0_i32_255 c1_i32_257 k0_t2
  let v2729 : Index := Scalar.indexCast arg15
  let c992_1657 : Index := 992#32
  ![0, 0, v2729.toNat, 992]
def k0_off401 (k0_t2 : Fin k0_t2_loop.trips) : Fin 4 → Nat :=
  let c0_i32_1658 : BitVec 32 := 0#32
  let v2733 : Index := Scalar.indexCast c0_i32_1658
  let c0_i32_1659 : BitVec 32 := 0#32
  let v2734 : Index := Scalar.indexCast c0_i32_1659
  let c0_i32_255 : BitVec 32 := 0#32
  let c1_i32_257 : BitVec 32 := 1#32
  let arg15 : BitVec 32 := Scf.iv c0_i32_255 c1_i32_257 k0_t2
  let v2735 : Index := Scalar.indexCast arg15
  let c992_1660 : Index := 992#32
  ![0, 0, v2735.toNat, 992]
def k0_off402 (k0_t2 : Fin k0_t2_loop.trips) : Fin 4 → Nat :=
  let c0_i32_1661 : BitVec 32 := 0#32
  let v2739 : Index := Scalar.indexCast c0_i32_1661
  let c0_i32_1662 : BitVec 32 := 0#32
  let v2740 : Index := Scalar.indexCast c0_i32_1662
  let c0_i32_255 : BitVec 32 := 0#32
  let c1_i32_257 : BitVec 32 := 1#32
  let arg15 : BitVec 32 := Scf.iv c0_i32_255 c1_i32_257 k0_t2
  let v2741 : Index := Scalar.indexCast arg15
  let c1008_1663 : Index := 1008#32
  ![0, 0, v2741.toNat, 1008]
def k0_off403 (k0_t2 : Fin k0_t2_loop.trips) : Fin 4 → Nat :=
  let c0_i32_1664 : BitVec 32 := 0#32
  let v2745 : Index := Scalar.indexCast c0_i32_1664
  let c0_i32_1665 : BitVec 32 := 0#32
  let v2746 : Index := Scalar.indexCast c0_i32_1665
  let c0_i32_255 : BitVec 32 := 0#32
  let c1_i32_257 : BitVec 32 := 1#32
  let arg15 : BitVec 32 := Scf.iv c0_i32_255 c1_i32_257 k0_t2
  let v2747 : Index := Scalar.indexCast arg15
  let c1008_1666 : Index := 1008#32
  ![0, 0, v2747.toNat, 1008]
def k0_off404 (k0_t2 : Fin k0_t2_loop.trips) : Fin 4 → Nat :=
  let c0_i32_1667 : BitVec 32 := 0#32
  let v2751 : Index := Scalar.indexCast c0_i32_1667
  let c1_i32_1668 : BitVec 32 := 1#32
  let v2752 : Index := Scalar.indexCast c1_i32_1668
  let c0_i32_255 : BitVec 32 := 0#32
  let c1_i32_257 : BitVec 32 := 1#32
  let arg15 : BitVec 32 := Scf.iv c0_i32_255 c1_i32_257 k0_t2
  let v2753 : Index := Scalar.indexCast arg15
  let c512_1669 : Index := 512#32
  ![0, 1, v2753.toNat, 512]
def k0_off405 (k0_t2 : Fin k0_t2_loop.trips) : Fin 4 → Nat :=
  let c0_i32_1670 : BitVec 32 := 0#32
  let v2757 : Index := Scalar.indexCast c0_i32_1670
  let c1_i32_1671 : BitVec 32 := 1#32
  let v2758 : Index := Scalar.indexCast c1_i32_1671
  let c0_i32_255 : BitVec 32 := 0#32
  let c1_i32_257 : BitVec 32 := 1#32
  let arg15 : BitVec 32 := Scf.iv c0_i32_255 c1_i32_257 k0_t2
  let v2759 : Index := Scalar.indexCast arg15
  let c512_1672 : Index := 512#32
  ![0, 1, v2759.toNat, 512]
def k0_off406 (k0_t2 : Fin k0_t2_loop.trips) : Fin 4 → Nat :=
  let c0_i32_1673 : BitVec 32 := 0#32
  let v2763 : Index := Scalar.indexCast c0_i32_1673
  let c1_i32_1674 : BitVec 32 := 1#32
  let v2764 : Index := Scalar.indexCast c1_i32_1674
  let c0_i32_255 : BitVec 32 := 0#32
  let c1_i32_257 : BitVec 32 := 1#32
  let arg15 : BitVec 32 := Scf.iv c0_i32_255 c1_i32_257 k0_t2
  let v2765 : Index := Scalar.indexCast arg15
  let c528_1675 : Index := 528#32
  ![0, 1, v2765.toNat, 528]
def k0_off407 (k0_t2 : Fin k0_t2_loop.trips) : Fin 4 → Nat :=
  let c0_i32_1676 : BitVec 32 := 0#32
  let v2769 : Index := Scalar.indexCast c0_i32_1676
  let c1_i32_1677 : BitVec 32 := 1#32
  let v2770 : Index := Scalar.indexCast c1_i32_1677
  let c0_i32_255 : BitVec 32 := 0#32
  let c1_i32_257 : BitVec 32 := 1#32
  let arg15 : BitVec 32 := Scf.iv c0_i32_255 c1_i32_257 k0_t2
  let v2771 : Index := Scalar.indexCast arg15
  let c528_1678 : Index := 528#32
  ![0, 1, v2771.toNat, 528]
def k0_off408 (k0_t2 : Fin k0_t2_loop.trips) : Fin 4 → Nat :=
  let c0_i32_1679 : BitVec 32 := 0#32
  let v2775 : Index := Scalar.indexCast c0_i32_1679
  let c1_i32_1680 : BitVec 32 := 1#32
  let v2776 : Index := Scalar.indexCast c1_i32_1680
  let c0_i32_255 : BitVec 32 := 0#32
  let c1_i32_257 : BitVec 32 := 1#32
  let arg15 : BitVec 32 := Scf.iv c0_i32_255 c1_i32_257 k0_t2
  let v2777 : Index := Scalar.indexCast arg15
  let c544_1681 : Index := 544#32
  ![0, 1, v2777.toNat, 544]
def k0_off409 (k0_t2 : Fin k0_t2_loop.trips) : Fin 4 → Nat :=
  let c0_i32_1682 : BitVec 32 := 0#32
  let v2781 : Index := Scalar.indexCast c0_i32_1682
  let c1_i32_1683 : BitVec 32 := 1#32
  let v2782 : Index := Scalar.indexCast c1_i32_1683
  let c0_i32_255 : BitVec 32 := 0#32
  let c1_i32_257 : BitVec 32 := 1#32
  let arg15 : BitVec 32 := Scf.iv c0_i32_255 c1_i32_257 k0_t2
  let v2783 : Index := Scalar.indexCast arg15
  let c544_1684 : Index := 544#32
  ![0, 1, v2783.toNat, 544]
def k0_off410 (k0_t2 : Fin k0_t2_loop.trips) : Fin 4 → Nat :=
  let c0_i32_1685 : BitVec 32 := 0#32
  let v2787 : Index := Scalar.indexCast c0_i32_1685
  let c1_i32_1686 : BitVec 32 := 1#32
  let v2788 : Index := Scalar.indexCast c1_i32_1686
  let c0_i32_255 : BitVec 32 := 0#32
  let c1_i32_257 : BitVec 32 := 1#32
  let arg15 : BitVec 32 := Scf.iv c0_i32_255 c1_i32_257 k0_t2
  let v2789 : Index := Scalar.indexCast arg15
  let c560_1687 : Index := 560#32
  ![0, 1, v2789.toNat, 560]
def k0_off411 (k0_t2 : Fin k0_t2_loop.trips) : Fin 4 → Nat :=
  let c0_i32_1688 : BitVec 32 := 0#32
  let v2793 : Index := Scalar.indexCast c0_i32_1688
  let c1_i32_1689 : BitVec 32 := 1#32
  let v2794 : Index := Scalar.indexCast c1_i32_1689
  let c0_i32_255 : BitVec 32 := 0#32
  let c1_i32_257 : BitVec 32 := 1#32
  let arg15 : BitVec 32 := Scf.iv c0_i32_255 c1_i32_257 k0_t2
  let v2795 : Index := Scalar.indexCast arg15
  let c560_1690 : Index := 560#32
  ![0, 1, v2795.toNat, 560]
def k0_off412 (k0_t2 : Fin k0_t2_loop.trips) : Fin 4 → Nat :=
  let c0_i32_1691 : BitVec 32 := 0#32
  let v2799 : Index := Scalar.indexCast c0_i32_1691
  let c1_i32_1692 : BitVec 32 := 1#32
  let v2800 : Index := Scalar.indexCast c1_i32_1692
  let c0_i32_255 : BitVec 32 := 0#32
  let c1_i32_257 : BitVec 32 := 1#32
  let arg15 : BitVec 32 := Scf.iv c0_i32_255 c1_i32_257 k0_t2
  let v2801 : Index := Scalar.indexCast arg15
  let c576_1693 : Index := 576#32
  ![0, 1, v2801.toNat, 576]
def k0_off413 (k0_t2 : Fin k0_t2_loop.trips) : Fin 4 → Nat :=
  let c0_i32_1694 : BitVec 32 := 0#32
  let v2805 : Index := Scalar.indexCast c0_i32_1694
  let c1_i32_1695 : BitVec 32 := 1#32
  let v2806 : Index := Scalar.indexCast c1_i32_1695
  let c0_i32_255 : BitVec 32 := 0#32
  let c1_i32_257 : BitVec 32 := 1#32
  let arg15 : BitVec 32 := Scf.iv c0_i32_255 c1_i32_257 k0_t2
  let v2807 : Index := Scalar.indexCast arg15
  let c576_1696 : Index := 576#32
  ![0, 1, v2807.toNat, 576]
def k0_off414 (k0_t2 : Fin k0_t2_loop.trips) : Fin 4 → Nat :=
  let c0_i32_1697 : BitVec 32 := 0#32
  let v2811 : Index := Scalar.indexCast c0_i32_1697
  let c1_i32_1698 : BitVec 32 := 1#32
  let v2812 : Index := Scalar.indexCast c1_i32_1698
  let c0_i32_255 : BitVec 32 := 0#32
  let c1_i32_257 : BitVec 32 := 1#32
  let arg15 : BitVec 32 := Scf.iv c0_i32_255 c1_i32_257 k0_t2
  let v2813 : Index := Scalar.indexCast arg15
  let c592_1699 : Index := 592#32
  ![0, 1, v2813.toNat, 592]
def k0_off415 (k0_t2 : Fin k0_t2_loop.trips) : Fin 4 → Nat :=
  let c0_i32_1700 : BitVec 32 := 0#32
  let v2817 : Index := Scalar.indexCast c0_i32_1700
  let c1_i32_1701 : BitVec 32 := 1#32
  let v2818 : Index := Scalar.indexCast c1_i32_1701
  let c0_i32_255 : BitVec 32 := 0#32
  let c1_i32_257 : BitVec 32 := 1#32
  let arg15 : BitVec 32 := Scf.iv c0_i32_255 c1_i32_257 k0_t2
  let v2819 : Index := Scalar.indexCast arg15
  let c592_1702 : Index := 592#32
  ![0, 1, v2819.toNat, 592]
def k0_off416 (k0_t2 : Fin k0_t2_loop.trips) : Fin 4 → Nat :=
  let c0_i32_1703 : BitVec 32 := 0#32
  let v2823 : Index := Scalar.indexCast c0_i32_1703
  let c1_i32_1704 : BitVec 32 := 1#32
  let v2824 : Index := Scalar.indexCast c1_i32_1704
  let c0_i32_255 : BitVec 32 := 0#32
  let c1_i32_257 : BitVec 32 := 1#32
  let arg15 : BitVec 32 := Scf.iv c0_i32_255 c1_i32_257 k0_t2
  let v2825 : Index := Scalar.indexCast arg15
  let c608_1705 : Index := 608#32
  ![0, 1, v2825.toNat, 608]
def k0_off417 (k0_t2 : Fin k0_t2_loop.trips) : Fin 4 → Nat :=
  let c0_i32_1706 : BitVec 32 := 0#32
  let v2829 : Index := Scalar.indexCast c0_i32_1706
  let c1_i32_1707 : BitVec 32 := 1#32
  let v2830 : Index := Scalar.indexCast c1_i32_1707
  let c0_i32_255 : BitVec 32 := 0#32
  let c1_i32_257 : BitVec 32 := 1#32
  let arg15 : BitVec 32 := Scf.iv c0_i32_255 c1_i32_257 k0_t2
  let v2831 : Index := Scalar.indexCast arg15
  let c608_1708 : Index := 608#32
  ![0, 1, v2831.toNat, 608]
def k0_off418 (k0_t2 : Fin k0_t2_loop.trips) : Fin 4 → Nat :=
  let c0_i32_1709 : BitVec 32 := 0#32
  let v2835 : Index := Scalar.indexCast c0_i32_1709
  let c1_i32_1710 : BitVec 32 := 1#32
  let v2836 : Index := Scalar.indexCast c1_i32_1710
  let c0_i32_255 : BitVec 32 := 0#32
  let c1_i32_257 : BitVec 32 := 1#32
  let arg15 : BitVec 32 := Scf.iv c0_i32_255 c1_i32_257 k0_t2
  let v2837 : Index := Scalar.indexCast arg15
  let c624_1711 : Index := 624#32
  ![0, 1, v2837.toNat, 624]
def k0_off419 (k0_t2 : Fin k0_t2_loop.trips) : Fin 4 → Nat :=
  let c0_i32_1712 : BitVec 32 := 0#32
  let v2841 : Index := Scalar.indexCast c0_i32_1712
  let c1_i32_1713 : BitVec 32 := 1#32
  let v2842 : Index := Scalar.indexCast c1_i32_1713
  let c0_i32_255 : BitVec 32 := 0#32
  let c1_i32_257 : BitVec 32 := 1#32
  let arg15 : BitVec 32 := Scf.iv c0_i32_255 c1_i32_257 k0_t2
  let v2843 : Index := Scalar.indexCast arg15
  let c624_1714 : Index := 624#32
  ![0, 1, v2843.toNat, 624]
def k0_off420 (k0_t2 : Fin k0_t2_loop.trips) : Fin 4 → Nat :=
  let c0_i32_1715 : BitVec 32 := 0#32
  let v2847 : Index := Scalar.indexCast c0_i32_1715
  let c1_i32_1716 : BitVec 32 := 1#32
  let v2848 : Index := Scalar.indexCast c1_i32_1716
  let c0_i32_255 : BitVec 32 := 0#32
  let c1_i32_257 : BitVec 32 := 1#32
  let arg15 : BitVec 32 := Scf.iv c0_i32_255 c1_i32_257 k0_t2
  let v2849 : Index := Scalar.indexCast arg15
  let c640_1717 : Index := 640#32
  ![0, 1, v2849.toNat, 640]
def k0_off421 (k0_t2 : Fin k0_t2_loop.trips) : Fin 4 → Nat :=
  let c0_i32_1718 : BitVec 32 := 0#32
  let v2853 : Index := Scalar.indexCast c0_i32_1718
  let c1_i32_1719 : BitVec 32 := 1#32
  let v2854 : Index := Scalar.indexCast c1_i32_1719
  let c0_i32_255 : BitVec 32 := 0#32
  let c1_i32_257 : BitVec 32 := 1#32
  let arg15 : BitVec 32 := Scf.iv c0_i32_255 c1_i32_257 k0_t2
  let v2855 : Index := Scalar.indexCast arg15
  let c640_1720 : Index := 640#32
  ![0, 1, v2855.toNat, 640]
def k0_off422 (k0_t2 : Fin k0_t2_loop.trips) : Fin 4 → Nat :=
  let c0_i32_1721 : BitVec 32 := 0#32
  let v2859 : Index := Scalar.indexCast c0_i32_1721
  let c1_i32_1722 : BitVec 32 := 1#32
  let v2860 : Index := Scalar.indexCast c1_i32_1722
  let c0_i32_255 : BitVec 32 := 0#32
  let c1_i32_257 : BitVec 32 := 1#32
  let arg15 : BitVec 32 := Scf.iv c0_i32_255 c1_i32_257 k0_t2
  let v2861 : Index := Scalar.indexCast arg15
  let c656_1723 : Index := 656#32
  ![0, 1, v2861.toNat, 656]
def k0_off423 (k0_t2 : Fin k0_t2_loop.trips) : Fin 4 → Nat :=
  let c0_i32_1724 : BitVec 32 := 0#32
  let v2865 : Index := Scalar.indexCast c0_i32_1724
  let c1_i32_1725 : BitVec 32 := 1#32
  let v2866 : Index := Scalar.indexCast c1_i32_1725
  let c0_i32_255 : BitVec 32 := 0#32
  let c1_i32_257 : BitVec 32 := 1#32
  let arg15 : BitVec 32 := Scf.iv c0_i32_255 c1_i32_257 k0_t2
  let v2867 : Index := Scalar.indexCast arg15
  let c656_1726 : Index := 656#32
  ![0, 1, v2867.toNat, 656]
def k0_off424 (k0_t2 : Fin k0_t2_loop.trips) : Fin 4 → Nat :=
  let c0_i32_1727 : BitVec 32 := 0#32
  let v2871 : Index := Scalar.indexCast c0_i32_1727
  let c1_i32_1728 : BitVec 32 := 1#32
  let v2872 : Index := Scalar.indexCast c1_i32_1728
  let c0_i32_255 : BitVec 32 := 0#32
  let c1_i32_257 : BitVec 32 := 1#32
  let arg15 : BitVec 32 := Scf.iv c0_i32_255 c1_i32_257 k0_t2
  let v2873 : Index := Scalar.indexCast arg15
  let c672_1729 : Index := 672#32
  ![0, 1, v2873.toNat, 672]
def k0_off425 (k0_t2 : Fin k0_t2_loop.trips) : Fin 4 → Nat :=
  let c0_i32_1730 : BitVec 32 := 0#32
  let v2877 : Index := Scalar.indexCast c0_i32_1730
  let c1_i32_1731 : BitVec 32 := 1#32
  let v2878 : Index := Scalar.indexCast c1_i32_1731
  let c0_i32_255 : BitVec 32 := 0#32
  let c1_i32_257 : BitVec 32 := 1#32
  let arg15 : BitVec 32 := Scf.iv c0_i32_255 c1_i32_257 k0_t2
  let v2879 : Index := Scalar.indexCast arg15
  let c672_1732 : Index := 672#32
  ![0, 1, v2879.toNat, 672]
def k0_off426 (k0_t2 : Fin k0_t2_loop.trips) : Fin 4 → Nat :=
  let c0_i32_1733 : BitVec 32 := 0#32
  let v2883 : Index := Scalar.indexCast c0_i32_1733
  let c1_i32_1734 : BitVec 32 := 1#32
  let v2884 : Index := Scalar.indexCast c1_i32_1734
  let c0_i32_255 : BitVec 32 := 0#32
  let c1_i32_257 : BitVec 32 := 1#32
  let arg15 : BitVec 32 := Scf.iv c0_i32_255 c1_i32_257 k0_t2
  let v2885 : Index := Scalar.indexCast arg15
  let c688_1735 : Index := 688#32
  ![0, 1, v2885.toNat, 688]
def k0_off427 (k0_t2 : Fin k0_t2_loop.trips) : Fin 4 → Nat :=
  let c0_i32_1736 : BitVec 32 := 0#32
  let v2889 : Index := Scalar.indexCast c0_i32_1736
  let c1_i32_1737 : BitVec 32 := 1#32
  let v2890 : Index := Scalar.indexCast c1_i32_1737
  let c0_i32_255 : BitVec 32 := 0#32
  let c1_i32_257 : BitVec 32 := 1#32
  let arg15 : BitVec 32 := Scf.iv c0_i32_255 c1_i32_257 k0_t2
  let v2891 : Index := Scalar.indexCast arg15
  let c688_1738 : Index := 688#32
  ![0, 1, v2891.toNat, 688]
def k0_off428 (k0_t2 : Fin k0_t2_loop.trips) : Fin 4 → Nat :=
  let c0_i32_1739 : BitVec 32 := 0#32
  let v2895 : Index := Scalar.indexCast c0_i32_1739
  let c1_i32_1740 : BitVec 32 := 1#32
  let v2896 : Index := Scalar.indexCast c1_i32_1740
  let c0_i32_255 : BitVec 32 := 0#32
  let c1_i32_257 : BitVec 32 := 1#32
  let arg15 : BitVec 32 := Scf.iv c0_i32_255 c1_i32_257 k0_t2
  let v2897 : Index := Scalar.indexCast arg15
  let c704_1741 : Index := 704#32
  ![0, 1, v2897.toNat, 704]
def k0_off429 (k0_t2 : Fin k0_t2_loop.trips) : Fin 4 → Nat :=
  let c0_i32_1742 : BitVec 32 := 0#32
  let v2901 : Index := Scalar.indexCast c0_i32_1742
  let c1_i32_1743 : BitVec 32 := 1#32
  let v2902 : Index := Scalar.indexCast c1_i32_1743
  let c0_i32_255 : BitVec 32 := 0#32
  let c1_i32_257 : BitVec 32 := 1#32
  let arg15 : BitVec 32 := Scf.iv c0_i32_255 c1_i32_257 k0_t2
  let v2903 : Index := Scalar.indexCast arg15
  let c704_1744 : Index := 704#32
  ![0, 1, v2903.toNat, 704]
def k0_off430 (k0_t2 : Fin k0_t2_loop.trips) : Fin 4 → Nat :=
  let c0_i32_1745 : BitVec 32 := 0#32
  let v2907 : Index := Scalar.indexCast c0_i32_1745
  let c1_i32_1746 : BitVec 32 := 1#32
  let v2908 : Index := Scalar.indexCast c1_i32_1746
  let c0_i32_255 : BitVec 32 := 0#32
  let c1_i32_257 : BitVec 32 := 1#32
  let arg15 : BitVec 32 := Scf.iv c0_i32_255 c1_i32_257 k0_t2
  let v2909 : Index := Scalar.indexCast arg15
  let c720_1747 : Index := 720#32
  ![0, 1, v2909.toNat, 720]
def k0_off431 (k0_t2 : Fin k0_t2_loop.trips) : Fin 4 → Nat :=
  let c0_i32_1748 : BitVec 32 := 0#32
  let v2913 : Index := Scalar.indexCast c0_i32_1748
  let c1_i32_1749 : BitVec 32 := 1#32
  let v2914 : Index := Scalar.indexCast c1_i32_1749
  let c0_i32_255 : BitVec 32 := 0#32
  let c1_i32_257 : BitVec 32 := 1#32
  let arg15 : BitVec 32 := Scf.iv c0_i32_255 c1_i32_257 k0_t2
  let v2915 : Index := Scalar.indexCast arg15
  let c720_1750 : Index := 720#32
  ![0, 1, v2915.toNat, 720]
def k0_off432 (k0_t2 : Fin k0_t2_loop.trips) : Fin 4 → Nat :=
  let c0_i32_1751 : BitVec 32 := 0#32
  let v2919 : Index := Scalar.indexCast c0_i32_1751
  let c1_i32_1752 : BitVec 32 := 1#32
  let v2920 : Index := Scalar.indexCast c1_i32_1752
  let c0_i32_255 : BitVec 32 := 0#32
  let c1_i32_257 : BitVec 32 := 1#32
  let arg15 : BitVec 32 := Scf.iv c0_i32_255 c1_i32_257 k0_t2
  let v2921 : Index := Scalar.indexCast arg15
  let c736_1753 : Index := 736#32
  ![0, 1, v2921.toNat, 736]
def k0_off433 (k0_t2 : Fin k0_t2_loop.trips) : Fin 4 → Nat :=
  let c0_i32_1754 : BitVec 32 := 0#32
  let v2925 : Index := Scalar.indexCast c0_i32_1754
  let c1_i32_1755 : BitVec 32 := 1#32
  let v2926 : Index := Scalar.indexCast c1_i32_1755
  let c0_i32_255 : BitVec 32 := 0#32
  let c1_i32_257 : BitVec 32 := 1#32
  let arg15 : BitVec 32 := Scf.iv c0_i32_255 c1_i32_257 k0_t2
  let v2927 : Index := Scalar.indexCast arg15
  let c736_1756 : Index := 736#32
  ![0, 1, v2927.toNat, 736]
def k0_off434 (k0_t2 : Fin k0_t2_loop.trips) : Fin 4 → Nat :=
  let c0_i32_1757 : BitVec 32 := 0#32
  let v2931 : Index := Scalar.indexCast c0_i32_1757
  let c1_i32_1758 : BitVec 32 := 1#32
  let v2932 : Index := Scalar.indexCast c1_i32_1758
  let c0_i32_255 : BitVec 32 := 0#32
  let c1_i32_257 : BitVec 32 := 1#32
  let arg15 : BitVec 32 := Scf.iv c0_i32_255 c1_i32_257 k0_t2
  let v2933 : Index := Scalar.indexCast arg15
  let c752_1759 : Index := 752#32
  ![0, 1, v2933.toNat, 752]
def k0_off435 (k0_t2 : Fin k0_t2_loop.trips) : Fin 4 → Nat :=
  let c0_i32_1760 : BitVec 32 := 0#32
  let v2937 : Index := Scalar.indexCast c0_i32_1760
  let c1_i32_1761 : BitVec 32 := 1#32
  let v2938 : Index := Scalar.indexCast c1_i32_1761
  let c0_i32_255 : BitVec 32 := 0#32
  let c1_i32_257 : BitVec 32 := 1#32
  let arg15 : BitVec 32 := Scf.iv c0_i32_255 c1_i32_257 k0_t2
  let v2939 : Index := Scalar.indexCast arg15
  let c752_1762 : Index := 752#32
  ![0, 1, v2939.toNat, 752]
def k0_off436 (k0_t2 : Fin k0_t2_loop.trips) : Fin 4 → Nat :=
  let c0_i32_1763 : BitVec 32 := 0#32
  let v2943 : Index := Scalar.indexCast c0_i32_1763
  let c1_i32_1764 : BitVec 32 := 1#32
  let v2944 : Index := Scalar.indexCast c1_i32_1764
  let c0_i32_255 : BitVec 32 := 0#32
  let c1_i32_257 : BitVec 32 := 1#32
  let arg15 : BitVec 32 := Scf.iv c0_i32_255 c1_i32_257 k0_t2
  let v2945 : Index := Scalar.indexCast arg15
  let c768_1765 : Index := 768#32
  ![0, 1, v2945.toNat, 768]
def k0_off437 (k0_t2 : Fin k0_t2_loop.trips) : Fin 4 → Nat :=
  let c0_i32_1766 : BitVec 32 := 0#32
  let v2949 : Index := Scalar.indexCast c0_i32_1766
  let c1_i32_1767 : BitVec 32 := 1#32
  let v2950 : Index := Scalar.indexCast c1_i32_1767
  let c0_i32_255 : BitVec 32 := 0#32
  let c1_i32_257 : BitVec 32 := 1#32
  let arg15 : BitVec 32 := Scf.iv c0_i32_255 c1_i32_257 k0_t2
  let v2951 : Index := Scalar.indexCast arg15
  let c768_1768 : Index := 768#32
  ![0, 1, v2951.toNat, 768]
def k0_off438 (k0_t2 : Fin k0_t2_loop.trips) : Fin 4 → Nat :=
  let c0_i32_1769 : BitVec 32 := 0#32
  let v2955 : Index := Scalar.indexCast c0_i32_1769
  let c1_i32_1770 : BitVec 32 := 1#32
  let v2956 : Index := Scalar.indexCast c1_i32_1770
  let c0_i32_255 : BitVec 32 := 0#32
  let c1_i32_257 : BitVec 32 := 1#32
  let arg15 : BitVec 32 := Scf.iv c0_i32_255 c1_i32_257 k0_t2
  let v2957 : Index := Scalar.indexCast arg15
  let c784_1771 : Index := 784#32
  ![0, 1, v2957.toNat, 784]
def k0_off439 (k0_t2 : Fin k0_t2_loop.trips) : Fin 4 → Nat :=
  let c0_i32_1772 : BitVec 32 := 0#32
  let v2961 : Index := Scalar.indexCast c0_i32_1772
  let c1_i32_1773 : BitVec 32 := 1#32
  let v2962 : Index := Scalar.indexCast c1_i32_1773
  let c0_i32_255 : BitVec 32 := 0#32
  let c1_i32_257 : BitVec 32 := 1#32
  let arg15 : BitVec 32 := Scf.iv c0_i32_255 c1_i32_257 k0_t2
  let v2963 : Index := Scalar.indexCast arg15
  let c784_1774 : Index := 784#32
  ![0, 1, v2963.toNat, 784]
def k0_off440 (k0_t2 : Fin k0_t2_loop.trips) : Fin 4 → Nat :=
  let c0_i32_1775 : BitVec 32 := 0#32
  let v2967 : Index := Scalar.indexCast c0_i32_1775
  let c1_i32_1776 : BitVec 32 := 1#32
  let v2968 : Index := Scalar.indexCast c1_i32_1776
  let c0_i32_255 : BitVec 32 := 0#32
  let c1_i32_257 : BitVec 32 := 1#32
  let arg15 : BitVec 32 := Scf.iv c0_i32_255 c1_i32_257 k0_t2
  let v2969 : Index := Scalar.indexCast arg15
  let c800_1777 : Index := 800#32
  ![0, 1, v2969.toNat, 800]
def k0_off441 (k0_t2 : Fin k0_t2_loop.trips) : Fin 4 → Nat :=
  let c0_i32_1778 : BitVec 32 := 0#32
  let v2973 : Index := Scalar.indexCast c0_i32_1778
  let c1_i32_1779 : BitVec 32 := 1#32
  let v2974 : Index := Scalar.indexCast c1_i32_1779
  let c0_i32_255 : BitVec 32 := 0#32
  let c1_i32_257 : BitVec 32 := 1#32
  let arg15 : BitVec 32 := Scf.iv c0_i32_255 c1_i32_257 k0_t2
  let v2975 : Index := Scalar.indexCast arg15
  let c800_1780 : Index := 800#32
  ![0, 1, v2975.toNat, 800]
def k0_off442 (k0_t2 : Fin k0_t2_loop.trips) : Fin 4 → Nat :=
  let c0_i32_1781 : BitVec 32 := 0#32
  let v2979 : Index := Scalar.indexCast c0_i32_1781
  let c1_i32_1782 : BitVec 32 := 1#32
  let v2980 : Index := Scalar.indexCast c1_i32_1782
  let c0_i32_255 : BitVec 32 := 0#32
  let c1_i32_257 : BitVec 32 := 1#32
  let arg15 : BitVec 32 := Scf.iv c0_i32_255 c1_i32_257 k0_t2
  let v2981 : Index := Scalar.indexCast arg15
  let c816_1783 : Index := 816#32
  ![0, 1, v2981.toNat, 816]
def k0_off443 (k0_t2 : Fin k0_t2_loop.trips) : Fin 4 → Nat :=
  let c0_i32_1784 : BitVec 32 := 0#32
  let v2985 : Index := Scalar.indexCast c0_i32_1784
  let c1_i32_1785 : BitVec 32 := 1#32
  let v2986 : Index := Scalar.indexCast c1_i32_1785
  let c0_i32_255 : BitVec 32 := 0#32
  let c1_i32_257 : BitVec 32 := 1#32
  let arg15 : BitVec 32 := Scf.iv c0_i32_255 c1_i32_257 k0_t2
  let v2987 : Index := Scalar.indexCast arg15
  let c816_1786 : Index := 816#32
  ![0, 1, v2987.toNat, 816]
def k0_off444 (k0_t2 : Fin k0_t2_loop.trips) : Fin 4 → Nat :=
  let c0_i32_1787 : BitVec 32 := 0#32
  let v2991 : Index := Scalar.indexCast c0_i32_1787
  let c1_i32_1788 : BitVec 32 := 1#32
  let v2992 : Index := Scalar.indexCast c1_i32_1788
  let c0_i32_255 : BitVec 32 := 0#32
  let c1_i32_257 : BitVec 32 := 1#32
  let arg15 : BitVec 32 := Scf.iv c0_i32_255 c1_i32_257 k0_t2
  let v2993 : Index := Scalar.indexCast arg15
  let c832_1789 : Index := 832#32
  ![0, 1, v2993.toNat, 832]
def k0_off445 (k0_t2 : Fin k0_t2_loop.trips) : Fin 4 → Nat :=
  let c0_i32_1790 : BitVec 32 := 0#32
  let v2997 : Index := Scalar.indexCast c0_i32_1790
  let c1_i32_1791 : BitVec 32 := 1#32
  let v2998 : Index := Scalar.indexCast c1_i32_1791
  let c0_i32_255 : BitVec 32 := 0#32
  let c1_i32_257 : BitVec 32 := 1#32
  let arg15 : BitVec 32 := Scf.iv c0_i32_255 c1_i32_257 k0_t2
  let v2999 : Index := Scalar.indexCast arg15
  let c832_1792 : Index := 832#32
  ![0, 1, v2999.toNat, 832]
def k0_off446 (k0_t2 : Fin k0_t2_loop.trips) : Fin 4 → Nat :=
  let c0_i32_1793 : BitVec 32 := 0#32
  let v3003 : Index := Scalar.indexCast c0_i32_1793
  let c1_i32_1794 : BitVec 32 := 1#32
  let v3004 : Index := Scalar.indexCast c1_i32_1794
  let c0_i32_255 : BitVec 32 := 0#32
  let c1_i32_257 : BitVec 32 := 1#32
  let arg15 : BitVec 32 := Scf.iv c0_i32_255 c1_i32_257 k0_t2
  let v3005 : Index := Scalar.indexCast arg15
  let c848_1795 : Index := 848#32
  ![0, 1, v3005.toNat, 848]
def k0_off447 (k0_t2 : Fin k0_t2_loop.trips) : Fin 4 → Nat :=
  let c0_i32_1796 : BitVec 32 := 0#32
  let v3009 : Index := Scalar.indexCast c0_i32_1796
  let c1_i32_1797 : BitVec 32 := 1#32
  let v3010 : Index := Scalar.indexCast c1_i32_1797
  let c0_i32_255 : BitVec 32 := 0#32
  let c1_i32_257 : BitVec 32 := 1#32
  let arg15 : BitVec 32 := Scf.iv c0_i32_255 c1_i32_257 k0_t2
  let v3011 : Index := Scalar.indexCast arg15
  let c848_1798 : Index := 848#32
  ![0, 1, v3011.toNat, 848]
def k0_off448 (k0_t2 : Fin k0_t2_loop.trips) : Fin 4 → Nat :=
  let c0_i32_1799 : BitVec 32 := 0#32
  let v3015 : Index := Scalar.indexCast c0_i32_1799
  let c1_i32_1800 : BitVec 32 := 1#32
  let v3016 : Index := Scalar.indexCast c1_i32_1800
  let c0_i32_255 : BitVec 32 := 0#32
  let c1_i32_257 : BitVec 32 := 1#32
  let arg15 : BitVec 32 := Scf.iv c0_i32_255 c1_i32_257 k0_t2
  let v3017 : Index := Scalar.indexCast arg15
  let c864_1801 : Index := 864#32
  ![0, 1, v3017.toNat, 864]
def k0_off449 (k0_t2 : Fin k0_t2_loop.trips) : Fin 4 → Nat :=
  let c0_i32_1802 : BitVec 32 := 0#32
  let v3021 : Index := Scalar.indexCast c0_i32_1802
  let c1_i32_1803 : BitVec 32 := 1#32
  let v3022 : Index := Scalar.indexCast c1_i32_1803
  let c0_i32_255 : BitVec 32 := 0#32
  let c1_i32_257 : BitVec 32 := 1#32
  let arg15 : BitVec 32 := Scf.iv c0_i32_255 c1_i32_257 k0_t2
  let v3023 : Index := Scalar.indexCast arg15
  let c864_1804 : Index := 864#32
  ![0, 1, v3023.toNat, 864]
def k0_off450 (k0_t2 : Fin k0_t2_loop.trips) : Fin 4 → Nat :=
  let c0_i32_1805 : BitVec 32 := 0#32
  let v3027 : Index := Scalar.indexCast c0_i32_1805
  let c1_i32_1806 : BitVec 32 := 1#32
  let v3028 : Index := Scalar.indexCast c1_i32_1806
  let c0_i32_255 : BitVec 32 := 0#32
  let c1_i32_257 : BitVec 32 := 1#32
  let arg15 : BitVec 32 := Scf.iv c0_i32_255 c1_i32_257 k0_t2
  let v3029 : Index := Scalar.indexCast arg15
  let c880_1807 : Index := 880#32
  ![0, 1, v3029.toNat, 880]
def k0_off451 (k0_t2 : Fin k0_t2_loop.trips) : Fin 4 → Nat :=
  let c0_i32_1808 : BitVec 32 := 0#32
  let v3033 : Index := Scalar.indexCast c0_i32_1808
  let c1_i32_1809 : BitVec 32 := 1#32
  let v3034 : Index := Scalar.indexCast c1_i32_1809
  let c0_i32_255 : BitVec 32 := 0#32
  let c1_i32_257 : BitVec 32 := 1#32
  let arg15 : BitVec 32 := Scf.iv c0_i32_255 c1_i32_257 k0_t2
  let v3035 : Index := Scalar.indexCast arg15
  let c880_1810 : Index := 880#32
  ![0, 1, v3035.toNat, 880]
def k0_off452 (k0_t2 : Fin k0_t2_loop.trips) : Fin 4 → Nat :=
  let c0_i32_1811 : BitVec 32 := 0#32
  let v3039 : Index := Scalar.indexCast c0_i32_1811
  let c1_i32_1812 : BitVec 32 := 1#32
  let v3040 : Index := Scalar.indexCast c1_i32_1812
  let c0_i32_255 : BitVec 32 := 0#32
  let c1_i32_257 : BitVec 32 := 1#32
  let arg15 : BitVec 32 := Scf.iv c0_i32_255 c1_i32_257 k0_t2
  let v3041 : Index := Scalar.indexCast arg15
  let c896_1813 : Index := 896#32
  ![0, 1, v3041.toNat, 896]
def k0_off453 (k0_t2 : Fin k0_t2_loop.trips) : Fin 4 → Nat :=
  let c0_i32_1814 : BitVec 32 := 0#32
  let v3045 : Index := Scalar.indexCast c0_i32_1814
  let c1_i32_1815 : BitVec 32 := 1#32
  let v3046 : Index := Scalar.indexCast c1_i32_1815
  let c0_i32_255 : BitVec 32 := 0#32
  let c1_i32_257 : BitVec 32 := 1#32
  let arg15 : BitVec 32 := Scf.iv c0_i32_255 c1_i32_257 k0_t2
  let v3047 : Index := Scalar.indexCast arg15
  let c896_1816 : Index := 896#32
  ![0, 1, v3047.toNat, 896]
def k0_off454 (k0_t2 : Fin k0_t2_loop.trips) : Fin 4 → Nat :=
  let c0_i32_1817 : BitVec 32 := 0#32
  let v3051 : Index := Scalar.indexCast c0_i32_1817
  let c1_i32_1818 : BitVec 32 := 1#32
  let v3052 : Index := Scalar.indexCast c1_i32_1818
  let c0_i32_255 : BitVec 32 := 0#32
  let c1_i32_257 : BitVec 32 := 1#32
  let arg15 : BitVec 32 := Scf.iv c0_i32_255 c1_i32_257 k0_t2
  let v3053 : Index := Scalar.indexCast arg15
  let c912_1819 : Index := 912#32
  ![0, 1, v3053.toNat, 912]
def k0_off455 (k0_t2 : Fin k0_t2_loop.trips) : Fin 4 → Nat :=
  let c0_i32_1820 : BitVec 32 := 0#32
  let v3057 : Index := Scalar.indexCast c0_i32_1820
  let c1_i32_1821 : BitVec 32 := 1#32
  let v3058 : Index := Scalar.indexCast c1_i32_1821
  let c0_i32_255 : BitVec 32 := 0#32
  let c1_i32_257 : BitVec 32 := 1#32
  let arg15 : BitVec 32 := Scf.iv c0_i32_255 c1_i32_257 k0_t2
  let v3059 : Index := Scalar.indexCast arg15
  let c912_1822 : Index := 912#32
  ![0, 1, v3059.toNat, 912]
def k0_off456 (k0_t2 : Fin k0_t2_loop.trips) : Fin 4 → Nat :=
  let c0_i32_1823 : BitVec 32 := 0#32
  let v3063 : Index := Scalar.indexCast c0_i32_1823
  let c1_i32_1824 : BitVec 32 := 1#32
  let v3064 : Index := Scalar.indexCast c1_i32_1824
  let c0_i32_255 : BitVec 32 := 0#32
  let c1_i32_257 : BitVec 32 := 1#32
  let arg15 : BitVec 32 := Scf.iv c0_i32_255 c1_i32_257 k0_t2
  let v3065 : Index := Scalar.indexCast arg15
  let c928_1825 : Index := 928#32
  ![0, 1, v3065.toNat, 928]
def k0_off457 (k0_t2 : Fin k0_t2_loop.trips) : Fin 4 → Nat :=
  let c0_i32_1826 : BitVec 32 := 0#32
  let v3069 : Index := Scalar.indexCast c0_i32_1826
  let c1_i32_1827 : BitVec 32 := 1#32
  let v3070 : Index := Scalar.indexCast c1_i32_1827
  let c0_i32_255 : BitVec 32 := 0#32
  let c1_i32_257 : BitVec 32 := 1#32
  let arg15 : BitVec 32 := Scf.iv c0_i32_255 c1_i32_257 k0_t2
  let v3071 : Index := Scalar.indexCast arg15
  let c928_1828 : Index := 928#32
  ![0, 1, v3071.toNat, 928]
def k0_off458 (k0_t2 : Fin k0_t2_loop.trips) : Fin 4 → Nat :=
  let c0_i32_1829 : BitVec 32 := 0#32
  let v3075 : Index := Scalar.indexCast c0_i32_1829
  let c1_i32_1830 : BitVec 32 := 1#32
  let v3076 : Index := Scalar.indexCast c1_i32_1830
  let c0_i32_255 : BitVec 32 := 0#32
  let c1_i32_257 : BitVec 32 := 1#32
  let arg15 : BitVec 32 := Scf.iv c0_i32_255 c1_i32_257 k0_t2
  let v3077 : Index := Scalar.indexCast arg15
  let c944_1831 : Index := 944#32
  ![0, 1, v3077.toNat, 944]
def k0_off459 (k0_t2 : Fin k0_t2_loop.trips) : Fin 4 → Nat :=
  let c0_i32_1832 : BitVec 32 := 0#32
  let v3081 : Index := Scalar.indexCast c0_i32_1832
  let c1_i32_1833 : BitVec 32 := 1#32
  let v3082 : Index := Scalar.indexCast c1_i32_1833
  let c0_i32_255 : BitVec 32 := 0#32
  let c1_i32_257 : BitVec 32 := 1#32
  let arg15 : BitVec 32 := Scf.iv c0_i32_255 c1_i32_257 k0_t2
  let v3083 : Index := Scalar.indexCast arg15
  let c944_1834 : Index := 944#32
  ![0, 1, v3083.toNat, 944]
def k0_off460 (k0_t2 : Fin k0_t2_loop.trips) : Fin 4 → Nat :=
  let c0_i32_1835 : BitVec 32 := 0#32
  let v3087 : Index := Scalar.indexCast c0_i32_1835
  let c1_i32_1836 : BitVec 32 := 1#32
  let v3088 : Index := Scalar.indexCast c1_i32_1836
  let c0_i32_255 : BitVec 32 := 0#32
  let c1_i32_257 : BitVec 32 := 1#32
  let arg15 : BitVec 32 := Scf.iv c0_i32_255 c1_i32_257 k0_t2
  let v3089 : Index := Scalar.indexCast arg15
  let c960_1837 : Index := 960#32
  ![0, 1, v3089.toNat, 960]
def k0_off461 (k0_t2 : Fin k0_t2_loop.trips) : Fin 4 → Nat :=
  let c0_i32_1838 : BitVec 32 := 0#32
  let v3093 : Index := Scalar.indexCast c0_i32_1838
  let c1_i32_1839 : BitVec 32 := 1#32
  let v3094 : Index := Scalar.indexCast c1_i32_1839
  let c0_i32_255 : BitVec 32 := 0#32
  let c1_i32_257 : BitVec 32 := 1#32
  let arg15 : BitVec 32 := Scf.iv c0_i32_255 c1_i32_257 k0_t2
  let v3095 : Index := Scalar.indexCast arg15
  let c960_1840 : Index := 960#32
  ![0, 1, v3095.toNat, 960]
def k0_off462 (k0_t2 : Fin k0_t2_loop.trips) : Fin 4 → Nat :=
  let c0_i32_1841 : BitVec 32 := 0#32
  let v3099 : Index := Scalar.indexCast c0_i32_1841
  let c1_i32_1842 : BitVec 32 := 1#32
  let v3100 : Index := Scalar.indexCast c1_i32_1842
  let c0_i32_255 : BitVec 32 := 0#32
  let c1_i32_257 : BitVec 32 := 1#32
  let arg15 : BitVec 32 := Scf.iv c0_i32_255 c1_i32_257 k0_t2
  let v3101 : Index := Scalar.indexCast arg15
  let c976_1843 : Index := 976#32
  ![0, 1, v3101.toNat, 976]
def k0_off463 (k0_t2 : Fin k0_t2_loop.trips) : Fin 4 → Nat :=
  let c0_i32_1844 : BitVec 32 := 0#32
  let v3105 : Index := Scalar.indexCast c0_i32_1844
  let c1_i32_1845 : BitVec 32 := 1#32
  let v3106 : Index := Scalar.indexCast c1_i32_1845
  let c0_i32_255 : BitVec 32 := 0#32
  let c1_i32_257 : BitVec 32 := 1#32
  let arg15 : BitVec 32 := Scf.iv c0_i32_255 c1_i32_257 k0_t2
  let v3107 : Index := Scalar.indexCast arg15
  let c976_1846 : Index := 976#32
  ![0, 1, v3107.toNat, 976]
def k0_off464 (k0_t2 : Fin k0_t2_loop.trips) : Fin 4 → Nat :=
  let c0_i32_1847 : BitVec 32 := 0#32
  let v3111 : Index := Scalar.indexCast c0_i32_1847
  let c1_i32_1848 : BitVec 32 := 1#32
  let v3112 : Index := Scalar.indexCast c1_i32_1848
  let c0_i32_255 : BitVec 32 := 0#32
  let c1_i32_257 : BitVec 32 := 1#32
  let arg15 : BitVec 32 := Scf.iv c0_i32_255 c1_i32_257 k0_t2
  let v3113 : Index := Scalar.indexCast arg15
  let c992_1849 : Index := 992#32
  ![0, 1, v3113.toNat, 992]
def k0_off465 (k0_t2 : Fin k0_t2_loop.trips) : Fin 4 → Nat :=
  let c0_i32_1850 : BitVec 32 := 0#32
  let v3117 : Index := Scalar.indexCast c0_i32_1850
  let c1_i32_1851 : BitVec 32 := 1#32
  let v3118 : Index := Scalar.indexCast c1_i32_1851
  let c0_i32_255 : BitVec 32 := 0#32
  let c1_i32_257 : BitVec 32 := 1#32
  let arg15 : BitVec 32 := Scf.iv c0_i32_255 c1_i32_257 k0_t2
  let v3119 : Index := Scalar.indexCast arg15
  let c992_1852 : Index := 992#32
  ![0, 1, v3119.toNat, 992]
def k0_off466 (k0_t2 : Fin k0_t2_loop.trips) : Fin 4 → Nat :=
  let c0_i32_1853 : BitVec 32 := 0#32
  let v3123 : Index := Scalar.indexCast c0_i32_1853
  let c1_i32_1854 : BitVec 32 := 1#32
  let v3124 : Index := Scalar.indexCast c1_i32_1854
  let c0_i32_255 : BitVec 32 := 0#32
  let c1_i32_257 : BitVec 32 := 1#32
  let arg15 : BitVec 32 := Scf.iv c0_i32_255 c1_i32_257 k0_t2
  let v3125 : Index := Scalar.indexCast arg15
  let c1008_1855 : Index := 1008#32
  ![0, 1, v3125.toNat, 1008]
def k0_off467 (k0_t2 : Fin k0_t2_loop.trips) : Fin 4 → Nat :=
  let c0_i32_1856 : BitVec 32 := 0#32
  let v3129 : Index := Scalar.indexCast c0_i32_1856
  let c1_i32_1857 : BitVec 32 := 1#32
  let v3130 : Index := Scalar.indexCast c1_i32_1857
  let c0_i32_255 : BitVec 32 := 0#32
  let c1_i32_257 : BitVec 32 := 1#32
  let arg15 : BitVec 32 := Scf.iv c0_i32_255 c1_i32_257 k0_t2
  let v3131 : Index := Scalar.indexCast arg15
  let c1008_1858 : Index := 1008#32
  ![0, 1, v3131.toNat, 1008]
def k0_off468 (k0_t2 : Fin k0_t2_loop.trips) : Fin 4 → Nat :=
  let c0_i32_1859 : BitVec 32 := 0#32
  let v3135 : Index := Scalar.indexCast c0_i32_1859
  let c2_i32_1860 : BitVec 32 := 2#32
  let v3136 : Index := Scalar.indexCast c2_i32_1860
  let c0_i32_255 : BitVec 32 := 0#32
  let c1_i32_257 : BitVec 32 := 1#32
  let arg15 : BitVec 32 := Scf.iv c0_i32_255 c1_i32_257 k0_t2
  let v3137 : Index := Scalar.indexCast arg15
  let c512_1861 : Index := 512#32
  ![0, 2, v3137.toNat, 512]
def k0_off469 (k0_t2 : Fin k0_t2_loop.trips) : Fin 4 → Nat :=
  let c0_i32_1862 : BitVec 32 := 0#32
  let v3141 : Index := Scalar.indexCast c0_i32_1862
  let c2_i32_1863 : BitVec 32 := 2#32
  let v3142 : Index := Scalar.indexCast c2_i32_1863
  let c0_i32_255 : BitVec 32 := 0#32
  let c1_i32_257 : BitVec 32 := 1#32
  let arg15 : BitVec 32 := Scf.iv c0_i32_255 c1_i32_257 k0_t2
  let v3143 : Index := Scalar.indexCast arg15
  let c512_1864 : Index := 512#32
  ![0, 2, v3143.toNat, 512]
def k0_off470 (k0_t2 : Fin k0_t2_loop.trips) : Fin 4 → Nat :=
  let c0_i32_1865 : BitVec 32 := 0#32
  let v3147 : Index := Scalar.indexCast c0_i32_1865
  let c2_i32_1866 : BitVec 32 := 2#32
  let v3148 : Index := Scalar.indexCast c2_i32_1866
  let c0_i32_255 : BitVec 32 := 0#32
  let c1_i32_257 : BitVec 32 := 1#32
  let arg15 : BitVec 32 := Scf.iv c0_i32_255 c1_i32_257 k0_t2
  let v3149 : Index := Scalar.indexCast arg15
  let c528_1867 : Index := 528#32
  ![0, 2, v3149.toNat, 528]
def k0_off471 (k0_t2 : Fin k0_t2_loop.trips) : Fin 4 → Nat :=
  let c0_i32_1868 : BitVec 32 := 0#32
  let v3153 : Index := Scalar.indexCast c0_i32_1868
  let c2_i32_1869 : BitVec 32 := 2#32
  let v3154 : Index := Scalar.indexCast c2_i32_1869
  let c0_i32_255 : BitVec 32 := 0#32
  let c1_i32_257 : BitVec 32 := 1#32
  let arg15 : BitVec 32 := Scf.iv c0_i32_255 c1_i32_257 k0_t2
  let v3155 : Index := Scalar.indexCast arg15
  let c528_1870 : Index := 528#32
  ![0, 2, v3155.toNat, 528]
def k0_off472 (k0_t2 : Fin k0_t2_loop.trips) : Fin 4 → Nat :=
  let c0_i32_1871 : BitVec 32 := 0#32
  let v3159 : Index := Scalar.indexCast c0_i32_1871
  let c2_i32_1872 : BitVec 32 := 2#32
  let v3160 : Index := Scalar.indexCast c2_i32_1872
  let c0_i32_255 : BitVec 32 := 0#32
  let c1_i32_257 : BitVec 32 := 1#32
  let arg15 : BitVec 32 := Scf.iv c0_i32_255 c1_i32_257 k0_t2
  let v3161 : Index := Scalar.indexCast arg15
  let c544_1873 : Index := 544#32
  ![0, 2, v3161.toNat, 544]
def k0_off473 (k0_t2 : Fin k0_t2_loop.trips) : Fin 4 → Nat :=
  let c0_i32_1874 : BitVec 32 := 0#32
  let v3165 : Index := Scalar.indexCast c0_i32_1874
  let c2_i32_1875 : BitVec 32 := 2#32
  let v3166 : Index := Scalar.indexCast c2_i32_1875
  let c0_i32_255 : BitVec 32 := 0#32
  let c1_i32_257 : BitVec 32 := 1#32
  let arg15 : BitVec 32 := Scf.iv c0_i32_255 c1_i32_257 k0_t2
  let v3167 : Index := Scalar.indexCast arg15
  let c544_1876 : Index := 544#32
  ![0, 2, v3167.toNat, 544]
def k0_off474 (k0_t2 : Fin k0_t2_loop.trips) : Fin 4 → Nat :=
  let c0_i32_1877 : BitVec 32 := 0#32
  let v3171 : Index := Scalar.indexCast c0_i32_1877
  let c2_i32_1878 : BitVec 32 := 2#32
  let v3172 : Index := Scalar.indexCast c2_i32_1878
  let c0_i32_255 : BitVec 32 := 0#32
  let c1_i32_257 : BitVec 32 := 1#32
  let arg15 : BitVec 32 := Scf.iv c0_i32_255 c1_i32_257 k0_t2
  let v3173 : Index := Scalar.indexCast arg15
  let c560_1879 : Index := 560#32
  ![0, 2, v3173.toNat, 560]
def k0_off475 (k0_t2 : Fin k0_t2_loop.trips) : Fin 4 → Nat :=
  let c0_i32_1880 : BitVec 32 := 0#32
  let v3177 : Index := Scalar.indexCast c0_i32_1880
  let c2_i32_1881 : BitVec 32 := 2#32
  let v3178 : Index := Scalar.indexCast c2_i32_1881
  let c0_i32_255 : BitVec 32 := 0#32
  let c1_i32_257 : BitVec 32 := 1#32
  let arg15 : BitVec 32 := Scf.iv c0_i32_255 c1_i32_257 k0_t2
  let v3179 : Index := Scalar.indexCast arg15
  let c560_1882 : Index := 560#32
  ![0, 2, v3179.toNat, 560]
def k0_off476 (k0_t2 : Fin k0_t2_loop.trips) : Fin 4 → Nat :=
  let c0_i32_1883 : BitVec 32 := 0#32
  let v3183 : Index := Scalar.indexCast c0_i32_1883
  let c2_i32_1884 : BitVec 32 := 2#32
  let v3184 : Index := Scalar.indexCast c2_i32_1884
  let c0_i32_255 : BitVec 32 := 0#32
  let c1_i32_257 : BitVec 32 := 1#32
  let arg15 : BitVec 32 := Scf.iv c0_i32_255 c1_i32_257 k0_t2
  let v3185 : Index := Scalar.indexCast arg15
  let c576_1885 : Index := 576#32
  ![0, 2, v3185.toNat, 576]
def k0_off477 (k0_t2 : Fin k0_t2_loop.trips) : Fin 4 → Nat :=
  let c0_i32_1886 : BitVec 32 := 0#32
  let v3189 : Index := Scalar.indexCast c0_i32_1886
  let c2_i32_1887 : BitVec 32 := 2#32
  let v3190 : Index := Scalar.indexCast c2_i32_1887
  let c0_i32_255 : BitVec 32 := 0#32
  let c1_i32_257 : BitVec 32 := 1#32
  let arg15 : BitVec 32 := Scf.iv c0_i32_255 c1_i32_257 k0_t2
  let v3191 : Index := Scalar.indexCast arg15
  let c576_1888 : Index := 576#32
  ![0, 2, v3191.toNat, 576]
def k0_off478 (k0_t2 : Fin k0_t2_loop.trips) : Fin 4 → Nat :=
  let c0_i32_1889 : BitVec 32 := 0#32
  let v3195 : Index := Scalar.indexCast c0_i32_1889
  let c2_i32_1890 : BitVec 32 := 2#32
  let v3196 : Index := Scalar.indexCast c2_i32_1890
  let c0_i32_255 : BitVec 32 := 0#32
  let c1_i32_257 : BitVec 32 := 1#32
  let arg15 : BitVec 32 := Scf.iv c0_i32_255 c1_i32_257 k0_t2
  let v3197 : Index := Scalar.indexCast arg15
  let c592_1891 : Index := 592#32
  ![0, 2, v3197.toNat, 592]
def k0_off479 (k0_t2 : Fin k0_t2_loop.trips) : Fin 4 → Nat :=
  let c0_i32_1892 : BitVec 32 := 0#32
  let v3201 : Index := Scalar.indexCast c0_i32_1892
  let c2_i32_1893 : BitVec 32 := 2#32
  let v3202 : Index := Scalar.indexCast c2_i32_1893
  let c0_i32_255 : BitVec 32 := 0#32
  let c1_i32_257 : BitVec 32 := 1#32
  let arg15 : BitVec 32 := Scf.iv c0_i32_255 c1_i32_257 k0_t2
  let v3203 : Index := Scalar.indexCast arg15
  let c592_1894 : Index := 592#32
  ![0, 2, v3203.toNat, 592]
def k0_off480 (k0_t2 : Fin k0_t2_loop.trips) : Fin 4 → Nat :=
  let c0_i32_1895 : BitVec 32 := 0#32
  let v3207 : Index := Scalar.indexCast c0_i32_1895
  let c2_i32_1896 : BitVec 32 := 2#32
  let v3208 : Index := Scalar.indexCast c2_i32_1896
  let c0_i32_255 : BitVec 32 := 0#32
  let c1_i32_257 : BitVec 32 := 1#32
  let arg15 : BitVec 32 := Scf.iv c0_i32_255 c1_i32_257 k0_t2
  let v3209 : Index := Scalar.indexCast arg15
  let c608_1897 : Index := 608#32
  ![0, 2, v3209.toNat, 608]
def k0_off481 (k0_t2 : Fin k0_t2_loop.trips) : Fin 4 → Nat :=
  let c0_i32_1898 : BitVec 32 := 0#32
  let v3213 : Index := Scalar.indexCast c0_i32_1898
  let c2_i32_1899 : BitVec 32 := 2#32
  let v3214 : Index := Scalar.indexCast c2_i32_1899
  let c0_i32_255 : BitVec 32 := 0#32
  let c1_i32_257 : BitVec 32 := 1#32
  let arg15 : BitVec 32 := Scf.iv c0_i32_255 c1_i32_257 k0_t2
  let v3215 : Index := Scalar.indexCast arg15
  let c608_1900 : Index := 608#32
  ![0, 2, v3215.toNat, 608]
def k0_off482 (k0_t2 : Fin k0_t2_loop.trips) : Fin 4 → Nat :=
  let c0_i32_1901 : BitVec 32 := 0#32
  let v3219 : Index := Scalar.indexCast c0_i32_1901
  let c2_i32_1902 : BitVec 32 := 2#32
  let v3220 : Index := Scalar.indexCast c2_i32_1902
  let c0_i32_255 : BitVec 32 := 0#32
  let c1_i32_257 : BitVec 32 := 1#32
  let arg15 : BitVec 32 := Scf.iv c0_i32_255 c1_i32_257 k0_t2
  let v3221 : Index := Scalar.indexCast arg15
  let c624_1903 : Index := 624#32
  ![0, 2, v3221.toNat, 624]
def k0_off483 (k0_t2 : Fin k0_t2_loop.trips) : Fin 4 → Nat :=
  let c0_i32_1904 : BitVec 32 := 0#32
  let v3225 : Index := Scalar.indexCast c0_i32_1904
  let c2_i32_1905 : BitVec 32 := 2#32
  let v3226 : Index := Scalar.indexCast c2_i32_1905
  let c0_i32_255 : BitVec 32 := 0#32
  let c1_i32_257 : BitVec 32 := 1#32
  let arg15 : BitVec 32 := Scf.iv c0_i32_255 c1_i32_257 k0_t2
  let v3227 : Index := Scalar.indexCast arg15
  let c624_1906 : Index := 624#32
  ![0, 2, v3227.toNat, 624]
def k0_off484 (k0_t2 : Fin k0_t2_loop.trips) : Fin 4 → Nat :=
  let c0_i32_1907 : BitVec 32 := 0#32
  let v3231 : Index := Scalar.indexCast c0_i32_1907
  let c2_i32_1908 : BitVec 32 := 2#32
  let v3232 : Index := Scalar.indexCast c2_i32_1908
  let c0_i32_255 : BitVec 32 := 0#32
  let c1_i32_257 : BitVec 32 := 1#32
  let arg15 : BitVec 32 := Scf.iv c0_i32_255 c1_i32_257 k0_t2
  let v3233 : Index := Scalar.indexCast arg15
  let c640_1909 : Index := 640#32
  ![0, 2, v3233.toNat, 640]
def k0_off485 (k0_t2 : Fin k0_t2_loop.trips) : Fin 4 → Nat :=
  let c0_i32_1910 : BitVec 32 := 0#32
  let v3237 : Index := Scalar.indexCast c0_i32_1910
  let c2_i32_1911 : BitVec 32 := 2#32
  let v3238 : Index := Scalar.indexCast c2_i32_1911
  let c0_i32_255 : BitVec 32 := 0#32
  let c1_i32_257 : BitVec 32 := 1#32
  let arg15 : BitVec 32 := Scf.iv c0_i32_255 c1_i32_257 k0_t2
  let v3239 : Index := Scalar.indexCast arg15
  let c640_1912 : Index := 640#32
  ![0, 2, v3239.toNat, 640]
def k0_off486 (k0_t2 : Fin k0_t2_loop.trips) : Fin 4 → Nat :=
  let c0_i32_1913 : BitVec 32 := 0#32
  let v3243 : Index := Scalar.indexCast c0_i32_1913
  let c2_i32_1914 : BitVec 32 := 2#32
  let v3244 : Index := Scalar.indexCast c2_i32_1914
  let c0_i32_255 : BitVec 32 := 0#32
  let c1_i32_257 : BitVec 32 := 1#32
  let arg15 : BitVec 32 := Scf.iv c0_i32_255 c1_i32_257 k0_t2
  let v3245 : Index := Scalar.indexCast arg15
  let c656_1915 : Index := 656#32
  ![0, 2, v3245.toNat, 656]
def k0_off487 (k0_t2 : Fin k0_t2_loop.trips) : Fin 4 → Nat :=
  let c0_i32_1916 : BitVec 32 := 0#32
  let v3249 : Index := Scalar.indexCast c0_i32_1916
  let c2_i32_1917 : BitVec 32 := 2#32
  let v3250 : Index := Scalar.indexCast c2_i32_1917
  let c0_i32_255 : BitVec 32 := 0#32
  let c1_i32_257 : BitVec 32 := 1#32
  let arg15 : BitVec 32 := Scf.iv c0_i32_255 c1_i32_257 k0_t2
  let v3251 : Index := Scalar.indexCast arg15
  let c656_1918 : Index := 656#32
  ![0, 2, v3251.toNat, 656]
def k0_off488 (k0_t2 : Fin k0_t2_loop.trips) : Fin 4 → Nat :=
  let c0_i32_1919 : BitVec 32 := 0#32
  let v3255 : Index := Scalar.indexCast c0_i32_1919
  let c2_i32_1920 : BitVec 32 := 2#32
  let v3256 : Index := Scalar.indexCast c2_i32_1920
  let c0_i32_255 : BitVec 32 := 0#32
  let c1_i32_257 : BitVec 32 := 1#32
  let arg15 : BitVec 32 := Scf.iv c0_i32_255 c1_i32_257 k0_t2
  let v3257 : Index := Scalar.indexCast arg15
  let c672_1921 : Index := 672#32
  ![0, 2, v3257.toNat, 672]
def k0_off489 (k0_t2 : Fin k0_t2_loop.trips) : Fin 4 → Nat :=
  let c0_i32_1922 : BitVec 32 := 0#32
  let v3261 : Index := Scalar.indexCast c0_i32_1922
  let c2_i32_1923 : BitVec 32 := 2#32
  let v3262 : Index := Scalar.indexCast c2_i32_1923
  let c0_i32_255 : BitVec 32 := 0#32
  let c1_i32_257 : BitVec 32 := 1#32
  let arg15 : BitVec 32 := Scf.iv c0_i32_255 c1_i32_257 k0_t2
  let v3263 : Index := Scalar.indexCast arg15
  let c672_1924 : Index := 672#32
  ![0, 2, v3263.toNat, 672]
def k0_off490 (k0_t2 : Fin k0_t2_loop.trips) : Fin 4 → Nat :=
  let c0_i32_1925 : BitVec 32 := 0#32
  let v3267 : Index := Scalar.indexCast c0_i32_1925
  let c2_i32_1926 : BitVec 32 := 2#32
  let v3268 : Index := Scalar.indexCast c2_i32_1926
  let c0_i32_255 : BitVec 32 := 0#32
  let c1_i32_257 : BitVec 32 := 1#32
  let arg15 : BitVec 32 := Scf.iv c0_i32_255 c1_i32_257 k0_t2
  let v3269 : Index := Scalar.indexCast arg15
  let c688_1927 : Index := 688#32
  ![0, 2, v3269.toNat, 688]
def k0_off491 (k0_t2 : Fin k0_t2_loop.trips) : Fin 4 → Nat :=
  let c0_i32_1928 : BitVec 32 := 0#32
  let v3273 : Index := Scalar.indexCast c0_i32_1928
  let c2_i32_1929 : BitVec 32 := 2#32
  let v3274 : Index := Scalar.indexCast c2_i32_1929
  let c0_i32_255 : BitVec 32 := 0#32
  let c1_i32_257 : BitVec 32 := 1#32
  let arg15 : BitVec 32 := Scf.iv c0_i32_255 c1_i32_257 k0_t2
  let v3275 : Index := Scalar.indexCast arg15
  let c688_1930 : Index := 688#32
  ![0, 2, v3275.toNat, 688]
def k0_off492 (k0_t2 : Fin k0_t2_loop.trips) : Fin 4 → Nat :=
  let c0_i32_1931 : BitVec 32 := 0#32
  let v3279 : Index := Scalar.indexCast c0_i32_1931
  let c2_i32_1932 : BitVec 32 := 2#32
  let v3280 : Index := Scalar.indexCast c2_i32_1932
  let c0_i32_255 : BitVec 32 := 0#32
  let c1_i32_257 : BitVec 32 := 1#32
  let arg15 : BitVec 32 := Scf.iv c0_i32_255 c1_i32_257 k0_t2
  let v3281 : Index := Scalar.indexCast arg15
  let c704_1933 : Index := 704#32
  ![0, 2, v3281.toNat, 704]
def k0_off493 (k0_t2 : Fin k0_t2_loop.trips) : Fin 4 → Nat :=
  let c0_i32_1934 : BitVec 32 := 0#32
  let v3285 : Index := Scalar.indexCast c0_i32_1934
  let c2_i32_1935 : BitVec 32 := 2#32
  let v3286 : Index := Scalar.indexCast c2_i32_1935
  let c0_i32_255 : BitVec 32 := 0#32
  let c1_i32_257 : BitVec 32 := 1#32
  let arg15 : BitVec 32 := Scf.iv c0_i32_255 c1_i32_257 k0_t2
  let v3287 : Index := Scalar.indexCast arg15
  let c704_1936 : Index := 704#32
  ![0, 2, v3287.toNat, 704]
def k0_off494 (k0_t2 : Fin k0_t2_loop.trips) : Fin 4 → Nat :=
  let c0_i32_1937 : BitVec 32 := 0#32
  let v3291 : Index := Scalar.indexCast c0_i32_1937
  let c2_i32_1938 : BitVec 32 := 2#32
  let v3292 : Index := Scalar.indexCast c2_i32_1938
  let c0_i32_255 : BitVec 32 := 0#32
  let c1_i32_257 : BitVec 32 := 1#32
  let arg15 : BitVec 32 := Scf.iv c0_i32_255 c1_i32_257 k0_t2
  let v3293 : Index := Scalar.indexCast arg15
  let c720_1939 : Index := 720#32
  ![0, 2, v3293.toNat, 720]
def k0_off495 (k0_t2 : Fin k0_t2_loop.trips) : Fin 4 → Nat :=
  let c0_i32_1940 : BitVec 32 := 0#32
  let v3297 : Index := Scalar.indexCast c0_i32_1940
  let c2_i32_1941 : BitVec 32 := 2#32
  let v3298 : Index := Scalar.indexCast c2_i32_1941
  let c0_i32_255 : BitVec 32 := 0#32
  let c1_i32_257 : BitVec 32 := 1#32
  let arg15 : BitVec 32 := Scf.iv c0_i32_255 c1_i32_257 k0_t2
  let v3299 : Index := Scalar.indexCast arg15
  let c720_1942 : Index := 720#32
  ![0, 2, v3299.toNat, 720]
def k0_off496 (k0_t2 : Fin k0_t2_loop.trips) : Fin 4 → Nat :=
  let c0_i32_1943 : BitVec 32 := 0#32
  let v3303 : Index := Scalar.indexCast c0_i32_1943
  let c2_i32_1944 : BitVec 32 := 2#32
  let v3304 : Index := Scalar.indexCast c2_i32_1944
  let c0_i32_255 : BitVec 32 := 0#32
  let c1_i32_257 : BitVec 32 := 1#32
  let arg15 : BitVec 32 := Scf.iv c0_i32_255 c1_i32_257 k0_t2
  let v3305 : Index := Scalar.indexCast arg15
  let c736_1945 : Index := 736#32
  ![0, 2, v3305.toNat, 736]
def k0_off497 (k0_t2 : Fin k0_t2_loop.trips) : Fin 4 → Nat :=
  let c0_i32_1946 : BitVec 32 := 0#32
  let v3309 : Index := Scalar.indexCast c0_i32_1946
  let c2_i32_1947 : BitVec 32 := 2#32
  let v3310 : Index := Scalar.indexCast c2_i32_1947
  let c0_i32_255 : BitVec 32 := 0#32
  let c1_i32_257 : BitVec 32 := 1#32
  let arg15 : BitVec 32 := Scf.iv c0_i32_255 c1_i32_257 k0_t2
  let v3311 : Index := Scalar.indexCast arg15
  let c736_1948 : Index := 736#32
  ![0, 2, v3311.toNat, 736]
def k0_off498 (k0_t2 : Fin k0_t2_loop.trips) : Fin 4 → Nat :=
  let c0_i32_1949 : BitVec 32 := 0#32
  let v3315 : Index := Scalar.indexCast c0_i32_1949
  let c2_i32_1950 : BitVec 32 := 2#32
  let v3316 : Index := Scalar.indexCast c2_i32_1950
  let c0_i32_255 : BitVec 32 := 0#32
  let c1_i32_257 : BitVec 32 := 1#32
  let arg15 : BitVec 32 := Scf.iv c0_i32_255 c1_i32_257 k0_t2
  let v3317 : Index := Scalar.indexCast arg15
  let c752_1951 : Index := 752#32
  ![0, 2, v3317.toNat, 752]
def k0_off499 (k0_t2 : Fin k0_t2_loop.trips) : Fin 4 → Nat :=
  let c0_i32_1952 : BitVec 32 := 0#32
  let v3321 : Index := Scalar.indexCast c0_i32_1952
  let c2_i32_1953 : BitVec 32 := 2#32
  let v3322 : Index := Scalar.indexCast c2_i32_1953
  let c0_i32_255 : BitVec 32 := 0#32
  let c1_i32_257 : BitVec 32 := 1#32
  let arg15 : BitVec 32 := Scf.iv c0_i32_255 c1_i32_257 k0_t2
  let v3323 : Index := Scalar.indexCast arg15
  let c752_1954 : Index := 752#32
  ![0, 2, v3323.toNat, 752]
def k0_off500 (k0_t2 : Fin k0_t2_loop.trips) : Fin 4 → Nat :=
  let c0_i32_1955 : BitVec 32 := 0#32
  let v3327 : Index := Scalar.indexCast c0_i32_1955
  let c2_i32_1956 : BitVec 32 := 2#32
  let v3328 : Index := Scalar.indexCast c2_i32_1956
  let c0_i32_255 : BitVec 32 := 0#32
  let c1_i32_257 : BitVec 32 := 1#32
  let arg15 : BitVec 32 := Scf.iv c0_i32_255 c1_i32_257 k0_t2
  let v3329 : Index := Scalar.indexCast arg15
  let c768_1957 : Index := 768#32
  ![0, 2, v3329.toNat, 768]
def k0_off501 (k0_t2 : Fin k0_t2_loop.trips) : Fin 4 → Nat :=
  let c0_i32_1958 : BitVec 32 := 0#32
  let v3333 : Index := Scalar.indexCast c0_i32_1958
  let c2_i32_1959 : BitVec 32 := 2#32
  let v3334 : Index := Scalar.indexCast c2_i32_1959
  let c0_i32_255 : BitVec 32 := 0#32
  let c1_i32_257 : BitVec 32 := 1#32
  let arg15 : BitVec 32 := Scf.iv c0_i32_255 c1_i32_257 k0_t2
  let v3335 : Index := Scalar.indexCast arg15
  let c768_1960 : Index := 768#32
  ![0, 2, v3335.toNat, 768]
def k0_off502 (k0_t2 : Fin k0_t2_loop.trips) : Fin 4 → Nat :=
  let c0_i32_1961 : BitVec 32 := 0#32
  let v3339 : Index := Scalar.indexCast c0_i32_1961
  let c2_i32_1962 : BitVec 32 := 2#32
  let v3340 : Index := Scalar.indexCast c2_i32_1962
  let c0_i32_255 : BitVec 32 := 0#32
  let c1_i32_257 : BitVec 32 := 1#32
  let arg15 : BitVec 32 := Scf.iv c0_i32_255 c1_i32_257 k0_t2
  let v3341 : Index := Scalar.indexCast arg15
  let c784_1963 : Index := 784#32
  ![0, 2, v3341.toNat, 784]
def k0_off503 (k0_t2 : Fin k0_t2_loop.trips) : Fin 4 → Nat :=
  let c0_i32_1964 : BitVec 32 := 0#32
  let v3345 : Index := Scalar.indexCast c0_i32_1964
  let c2_i32_1965 : BitVec 32 := 2#32
  let v3346 : Index := Scalar.indexCast c2_i32_1965
  let c0_i32_255 : BitVec 32 := 0#32
  let c1_i32_257 : BitVec 32 := 1#32
  let arg15 : BitVec 32 := Scf.iv c0_i32_255 c1_i32_257 k0_t2
  let v3347 : Index := Scalar.indexCast arg15
  let c784_1966 : Index := 784#32
  ![0, 2, v3347.toNat, 784]
def k0_off504 (k0_t2 : Fin k0_t2_loop.trips) : Fin 4 → Nat :=
  let c0_i32_1967 : BitVec 32 := 0#32
  let v3351 : Index := Scalar.indexCast c0_i32_1967
  let c2_i32_1968 : BitVec 32 := 2#32
  let v3352 : Index := Scalar.indexCast c2_i32_1968
  let c0_i32_255 : BitVec 32 := 0#32
  let c1_i32_257 : BitVec 32 := 1#32
  let arg15 : BitVec 32 := Scf.iv c0_i32_255 c1_i32_257 k0_t2
  let v3353 : Index := Scalar.indexCast arg15
  let c800_1969 : Index := 800#32
  ![0, 2, v3353.toNat, 800]
def k0_off505 (k0_t2 : Fin k0_t2_loop.trips) : Fin 4 → Nat :=
  let c0_i32_1970 : BitVec 32 := 0#32
  let v3357 : Index := Scalar.indexCast c0_i32_1970
  let c2_i32_1971 : BitVec 32 := 2#32
  let v3358 : Index := Scalar.indexCast c2_i32_1971
  let c0_i32_255 : BitVec 32 := 0#32
  let c1_i32_257 : BitVec 32 := 1#32
  let arg15 : BitVec 32 := Scf.iv c0_i32_255 c1_i32_257 k0_t2
  let v3359 : Index := Scalar.indexCast arg15
  let c800_1972 : Index := 800#32
  ![0, 2, v3359.toNat, 800]
def k0_off506 (k0_t2 : Fin k0_t2_loop.trips) : Fin 4 → Nat :=
  let c0_i32_1973 : BitVec 32 := 0#32
  let v3363 : Index := Scalar.indexCast c0_i32_1973
  let c2_i32_1974 : BitVec 32 := 2#32
  let v3364 : Index := Scalar.indexCast c2_i32_1974
  let c0_i32_255 : BitVec 32 := 0#32
  let c1_i32_257 : BitVec 32 := 1#32
  let arg15 : BitVec 32 := Scf.iv c0_i32_255 c1_i32_257 k0_t2
  let v3365 : Index := Scalar.indexCast arg15
  let c816_1975 : Index := 816#32
  ![0, 2, v3365.toNat, 816]
def k0_off507 (k0_t2 : Fin k0_t2_loop.trips) : Fin 4 → Nat :=
  let c0_i32_1976 : BitVec 32 := 0#32
  let v3369 : Index := Scalar.indexCast c0_i32_1976
  let c2_i32_1977 : BitVec 32 := 2#32
  let v3370 : Index := Scalar.indexCast c2_i32_1977
  let c0_i32_255 : BitVec 32 := 0#32
  let c1_i32_257 : BitVec 32 := 1#32
  let arg15 : BitVec 32 := Scf.iv c0_i32_255 c1_i32_257 k0_t2
  let v3371 : Index := Scalar.indexCast arg15
  let c816_1978 : Index := 816#32
  ![0, 2, v3371.toNat, 816]
def k0_off508 (k0_t2 : Fin k0_t2_loop.trips) : Fin 4 → Nat :=
  let c0_i32_1979 : BitVec 32 := 0#32
  let v3375 : Index := Scalar.indexCast c0_i32_1979
  let c2_i32_1980 : BitVec 32 := 2#32
  let v3376 : Index := Scalar.indexCast c2_i32_1980
  let c0_i32_255 : BitVec 32 := 0#32
  let c1_i32_257 : BitVec 32 := 1#32
  let arg15 : BitVec 32 := Scf.iv c0_i32_255 c1_i32_257 k0_t2
  let v3377 : Index := Scalar.indexCast arg15
  let c832_1981 : Index := 832#32
  ![0, 2, v3377.toNat, 832]
def k0_off509 (k0_t2 : Fin k0_t2_loop.trips) : Fin 4 → Nat :=
  let c0_i32_1982 : BitVec 32 := 0#32
  let v3381 : Index := Scalar.indexCast c0_i32_1982
  let c2_i32_1983 : BitVec 32 := 2#32
  let v3382 : Index := Scalar.indexCast c2_i32_1983
  let c0_i32_255 : BitVec 32 := 0#32
  let c1_i32_257 : BitVec 32 := 1#32
  let arg15 : BitVec 32 := Scf.iv c0_i32_255 c1_i32_257 k0_t2
  let v3383 : Index := Scalar.indexCast arg15
  let c832_1984 : Index := 832#32
  ![0, 2, v3383.toNat, 832]
def k0_off510 (k0_t2 : Fin k0_t2_loop.trips) : Fin 4 → Nat :=
  let c0_i32_1985 : BitVec 32 := 0#32
  let v3387 : Index := Scalar.indexCast c0_i32_1985
  let c2_i32_1986 : BitVec 32 := 2#32
  let v3388 : Index := Scalar.indexCast c2_i32_1986
  let c0_i32_255 : BitVec 32 := 0#32
  let c1_i32_257 : BitVec 32 := 1#32
  let arg15 : BitVec 32 := Scf.iv c0_i32_255 c1_i32_257 k0_t2
  let v3389 : Index := Scalar.indexCast arg15
  let c848_1987 : Index := 848#32
  ![0, 2, v3389.toNat, 848]
def k0_off511 (k0_t2 : Fin k0_t2_loop.trips) : Fin 4 → Nat :=
  let c0_i32_1988 : BitVec 32 := 0#32
  let v3393 : Index := Scalar.indexCast c0_i32_1988
  let c2_i32_1989 : BitVec 32 := 2#32
  let v3394 : Index := Scalar.indexCast c2_i32_1989
  let c0_i32_255 : BitVec 32 := 0#32
  let c1_i32_257 : BitVec 32 := 1#32
  let arg15 : BitVec 32 := Scf.iv c0_i32_255 c1_i32_257 k0_t2
  let v3395 : Index := Scalar.indexCast arg15
  let c848_1990 : Index := 848#32
  ![0, 2, v3395.toNat, 848]
def k0_off512 (k0_t2 : Fin k0_t2_loop.trips) : Fin 4 → Nat :=
  let c0_i32_1991 : BitVec 32 := 0#32
  let v3399 : Index := Scalar.indexCast c0_i32_1991
  let c2_i32_1992 : BitVec 32 := 2#32
  let v3400 : Index := Scalar.indexCast c2_i32_1992
  let c0_i32_255 : BitVec 32 := 0#32
  let c1_i32_257 : BitVec 32 := 1#32
  let arg15 : BitVec 32 := Scf.iv c0_i32_255 c1_i32_257 k0_t2
  let v3401 : Index := Scalar.indexCast arg15
  let c864_1993 : Index := 864#32
  ![0, 2, v3401.toNat, 864]
def k0_off513 (k0_t2 : Fin k0_t2_loop.trips) : Fin 4 → Nat :=
  let c0_i32_1994 : BitVec 32 := 0#32
  let v3405 : Index := Scalar.indexCast c0_i32_1994
  let c2_i32_1995 : BitVec 32 := 2#32
  let v3406 : Index := Scalar.indexCast c2_i32_1995
  let c0_i32_255 : BitVec 32 := 0#32
  let c1_i32_257 : BitVec 32 := 1#32
  let arg15 : BitVec 32 := Scf.iv c0_i32_255 c1_i32_257 k0_t2
  let v3407 : Index := Scalar.indexCast arg15
  let c864_1996 : Index := 864#32
  ![0, 2, v3407.toNat, 864]
def k0_off514 (k0_t2 : Fin k0_t2_loop.trips) : Fin 4 → Nat :=
  let c0_i32_1997 : BitVec 32 := 0#32
  let v3411 : Index := Scalar.indexCast c0_i32_1997
  let c2_i32_1998 : BitVec 32 := 2#32
  let v3412 : Index := Scalar.indexCast c2_i32_1998
  let c0_i32_255 : BitVec 32 := 0#32
  let c1_i32_257 : BitVec 32 := 1#32
  let arg15 : BitVec 32 := Scf.iv c0_i32_255 c1_i32_257 k0_t2
  let v3413 : Index := Scalar.indexCast arg15
  let c880_1999 : Index := 880#32
  ![0, 2, v3413.toNat, 880]
def k0_off515 (k0_t2 : Fin k0_t2_loop.trips) : Fin 4 → Nat :=
  let c0_i32_2000 : BitVec 32 := 0#32
  let v3417 : Index := Scalar.indexCast c0_i32_2000
  let c2_i32_2001 : BitVec 32 := 2#32
  let v3418 : Index := Scalar.indexCast c2_i32_2001
  let c0_i32_255 : BitVec 32 := 0#32
  let c1_i32_257 : BitVec 32 := 1#32
  let arg15 : BitVec 32 := Scf.iv c0_i32_255 c1_i32_257 k0_t2
  let v3419 : Index := Scalar.indexCast arg15
  let c880_2002 : Index := 880#32
  ![0, 2, v3419.toNat, 880]
def k0_off516 (k0_t2 : Fin k0_t2_loop.trips) : Fin 4 → Nat :=
  let c0_i32_2003 : BitVec 32 := 0#32
  let v3423 : Index := Scalar.indexCast c0_i32_2003
  let c2_i32_2004 : BitVec 32 := 2#32
  let v3424 : Index := Scalar.indexCast c2_i32_2004
  let c0_i32_255 : BitVec 32 := 0#32
  let c1_i32_257 : BitVec 32 := 1#32
  let arg15 : BitVec 32 := Scf.iv c0_i32_255 c1_i32_257 k0_t2
  let v3425 : Index := Scalar.indexCast arg15
  let c896_2005 : Index := 896#32
  ![0, 2, v3425.toNat, 896]
def k0_off517 (k0_t2 : Fin k0_t2_loop.trips) : Fin 4 → Nat :=
  let c0_i32_2006 : BitVec 32 := 0#32
  let v3429 : Index := Scalar.indexCast c0_i32_2006
  let c2_i32_2007 : BitVec 32 := 2#32
  let v3430 : Index := Scalar.indexCast c2_i32_2007
  let c0_i32_255 : BitVec 32 := 0#32
  let c1_i32_257 : BitVec 32 := 1#32
  let arg15 : BitVec 32 := Scf.iv c0_i32_255 c1_i32_257 k0_t2
  let v3431 : Index := Scalar.indexCast arg15
  let c896_2008 : Index := 896#32
  ![0, 2, v3431.toNat, 896]
def k0_off518 (k0_t2 : Fin k0_t2_loop.trips) : Fin 4 → Nat :=
  let c0_i32_2009 : BitVec 32 := 0#32
  let v3435 : Index := Scalar.indexCast c0_i32_2009
  let c2_i32_2010 : BitVec 32 := 2#32
  let v3436 : Index := Scalar.indexCast c2_i32_2010
  let c0_i32_255 : BitVec 32 := 0#32
  let c1_i32_257 : BitVec 32 := 1#32
  let arg15 : BitVec 32 := Scf.iv c0_i32_255 c1_i32_257 k0_t2
  let v3437 : Index := Scalar.indexCast arg15
  let c912_2011 : Index := 912#32
  ![0, 2, v3437.toNat, 912]
def k0_off519 (k0_t2 : Fin k0_t2_loop.trips) : Fin 4 → Nat :=
  let c0_i32_2012 : BitVec 32 := 0#32
  let v3441 : Index := Scalar.indexCast c0_i32_2012
  let c2_i32_2013 : BitVec 32 := 2#32
  let v3442 : Index := Scalar.indexCast c2_i32_2013
  let c0_i32_255 : BitVec 32 := 0#32
  let c1_i32_257 : BitVec 32 := 1#32
  let arg15 : BitVec 32 := Scf.iv c0_i32_255 c1_i32_257 k0_t2
  let v3443 : Index := Scalar.indexCast arg15
  let c912_2014 : Index := 912#32
  ![0, 2, v3443.toNat, 912]
def k0_off520 (k0_t2 : Fin k0_t2_loop.trips) : Fin 4 → Nat :=
  let c0_i32_2015 : BitVec 32 := 0#32
  let v3447 : Index := Scalar.indexCast c0_i32_2015
  let c2_i32_2016 : BitVec 32 := 2#32
  let v3448 : Index := Scalar.indexCast c2_i32_2016
  let c0_i32_255 : BitVec 32 := 0#32
  let c1_i32_257 : BitVec 32 := 1#32
  let arg15 : BitVec 32 := Scf.iv c0_i32_255 c1_i32_257 k0_t2
  let v3449 : Index := Scalar.indexCast arg15
  let c928_2017 : Index := 928#32
  ![0, 2, v3449.toNat, 928]
def k0_off521 (k0_t2 : Fin k0_t2_loop.trips) : Fin 4 → Nat :=
  let c0_i32_2018 : BitVec 32 := 0#32
  let v3453 : Index := Scalar.indexCast c0_i32_2018
  let c2_i32_2019 : BitVec 32 := 2#32
  let v3454 : Index := Scalar.indexCast c2_i32_2019
  let c0_i32_255 : BitVec 32 := 0#32
  let c1_i32_257 : BitVec 32 := 1#32
  let arg15 : BitVec 32 := Scf.iv c0_i32_255 c1_i32_257 k0_t2
  let v3455 : Index := Scalar.indexCast arg15
  let c928_2020 : Index := 928#32
  ![0, 2, v3455.toNat, 928]
def k0_off522 (k0_t2 : Fin k0_t2_loop.trips) : Fin 4 → Nat :=
  let c0_i32_2021 : BitVec 32 := 0#32
  let v3459 : Index := Scalar.indexCast c0_i32_2021
  let c2_i32_2022 : BitVec 32 := 2#32
  let v3460 : Index := Scalar.indexCast c2_i32_2022
  let c0_i32_255 : BitVec 32 := 0#32
  let c1_i32_257 : BitVec 32 := 1#32
  let arg15 : BitVec 32 := Scf.iv c0_i32_255 c1_i32_257 k0_t2
  let v3461 : Index := Scalar.indexCast arg15
  let c944_2023 : Index := 944#32
  ![0, 2, v3461.toNat, 944]
def k0_off523 (k0_t2 : Fin k0_t2_loop.trips) : Fin 4 → Nat :=
  let c0_i32_2024 : BitVec 32 := 0#32
  let v3465 : Index := Scalar.indexCast c0_i32_2024
  let c2_i32_2025 : BitVec 32 := 2#32
  let v3466 : Index := Scalar.indexCast c2_i32_2025
  let c0_i32_255 : BitVec 32 := 0#32
  let c1_i32_257 : BitVec 32 := 1#32
  let arg15 : BitVec 32 := Scf.iv c0_i32_255 c1_i32_257 k0_t2
  let v3467 : Index := Scalar.indexCast arg15
  let c944_2026 : Index := 944#32
  ![0, 2, v3467.toNat, 944]
def k0_off524 (k0_t2 : Fin k0_t2_loop.trips) : Fin 4 → Nat :=
  let c0_i32_2027 : BitVec 32 := 0#32
  let v3471 : Index := Scalar.indexCast c0_i32_2027
  let c2_i32_2028 : BitVec 32 := 2#32
  let v3472 : Index := Scalar.indexCast c2_i32_2028
  let c0_i32_255 : BitVec 32 := 0#32
  let c1_i32_257 : BitVec 32 := 1#32
  let arg15 : BitVec 32 := Scf.iv c0_i32_255 c1_i32_257 k0_t2
  let v3473 : Index := Scalar.indexCast arg15
  let c960_2029 : Index := 960#32
  ![0, 2, v3473.toNat, 960]
def k0_off525 (k0_t2 : Fin k0_t2_loop.trips) : Fin 4 → Nat :=
  let c0_i32_2030 : BitVec 32 := 0#32
  let v3477 : Index := Scalar.indexCast c0_i32_2030
  let c2_i32_2031 : BitVec 32 := 2#32
  let v3478 : Index := Scalar.indexCast c2_i32_2031
  let c0_i32_255 : BitVec 32 := 0#32
  let c1_i32_257 : BitVec 32 := 1#32
  let arg15 : BitVec 32 := Scf.iv c0_i32_255 c1_i32_257 k0_t2
  let v3479 : Index := Scalar.indexCast arg15
  let c960_2032 : Index := 960#32
  ![0, 2, v3479.toNat, 960]
def k0_off526 (k0_t2 : Fin k0_t2_loop.trips) : Fin 4 → Nat :=
  let c0_i32_2033 : BitVec 32 := 0#32
  let v3483 : Index := Scalar.indexCast c0_i32_2033
  let c2_i32_2034 : BitVec 32 := 2#32
  let v3484 : Index := Scalar.indexCast c2_i32_2034
  let c0_i32_255 : BitVec 32 := 0#32
  let c1_i32_257 : BitVec 32 := 1#32
  let arg15 : BitVec 32 := Scf.iv c0_i32_255 c1_i32_257 k0_t2
  let v3485 : Index := Scalar.indexCast arg15
  let c976_2035 : Index := 976#32
  ![0, 2, v3485.toNat, 976]
def k0_off527 (k0_t2 : Fin k0_t2_loop.trips) : Fin 4 → Nat :=
  let c0_i32_2036 : BitVec 32 := 0#32
  let v3489 : Index := Scalar.indexCast c0_i32_2036
  let c2_i32_2037 : BitVec 32 := 2#32
  let v3490 : Index := Scalar.indexCast c2_i32_2037
  let c0_i32_255 : BitVec 32 := 0#32
  let c1_i32_257 : BitVec 32 := 1#32
  let arg15 : BitVec 32 := Scf.iv c0_i32_255 c1_i32_257 k0_t2
  let v3491 : Index := Scalar.indexCast arg15
  let c976_2038 : Index := 976#32
  ![0, 2, v3491.toNat, 976]
def k0_off528 (k0_t2 : Fin k0_t2_loop.trips) : Fin 4 → Nat :=
  let c0_i32_2039 : BitVec 32 := 0#32
  let v3495 : Index := Scalar.indexCast c0_i32_2039
  let c2_i32_2040 : BitVec 32 := 2#32
  let v3496 : Index := Scalar.indexCast c2_i32_2040
  let c0_i32_255 : BitVec 32 := 0#32
  let c1_i32_257 : BitVec 32 := 1#32
  let arg15 : BitVec 32 := Scf.iv c0_i32_255 c1_i32_257 k0_t2
  let v3497 : Index := Scalar.indexCast arg15
  let c992_2041 : Index := 992#32
  ![0, 2, v3497.toNat, 992]
def k0_off529 (k0_t2 : Fin k0_t2_loop.trips) : Fin 4 → Nat :=
  let c0_i32_2042 : BitVec 32 := 0#32
  let v3501 : Index := Scalar.indexCast c0_i32_2042
  let c2_i32_2043 : BitVec 32 := 2#32
  let v3502 : Index := Scalar.indexCast c2_i32_2043
  let c0_i32_255 : BitVec 32 := 0#32
  let c1_i32_257 : BitVec 32 := 1#32
  let arg15 : BitVec 32 := Scf.iv c0_i32_255 c1_i32_257 k0_t2
  let v3503 : Index := Scalar.indexCast arg15
  let c992_2044 : Index := 992#32
  ![0, 2, v3503.toNat, 992]
def k0_off530 (k0_t2 : Fin k0_t2_loop.trips) : Fin 4 → Nat :=
  let c0_i32_2045 : BitVec 32 := 0#32
  let v3507 : Index := Scalar.indexCast c0_i32_2045
  let c2_i32_2046 : BitVec 32 := 2#32
  let v3508 : Index := Scalar.indexCast c2_i32_2046
  let c0_i32_255 : BitVec 32 := 0#32
  let c1_i32_257 : BitVec 32 := 1#32
  let arg15 : BitVec 32 := Scf.iv c0_i32_255 c1_i32_257 k0_t2
  let v3509 : Index := Scalar.indexCast arg15
  let c1008_2047 : Index := 1008#32
  ![0, 2, v3509.toNat, 1008]
def k0_off531 (k0_t2 : Fin k0_t2_loop.trips) : Fin 4 → Nat :=
  let c0_i32_2048 : BitVec 32 := 0#32
  let v3513 : Index := Scalar.indexCast c0_i32_2048
  let c2_i32_2049 : BitVec 32 := 2#32
  let v3514 : Index := Scalar.indexCast c2_i32_2049
  let c0_i32_255 : BitVec 32 := 0#32
  let c1_i32_257 : BitVec 32 := 1#32
  let arg15 : BitVec 32 := Scf.iv c0_i32_255 c1_i32_257 k0_t2
  let v3515 : Index := Scalar.indexCast arg15
  let c1008_2050 : Index := 1008#32
  ![0, 2, v3515.toNat, 1008]
def k0_off532 (k0_t2 : Fin k0_t2_loop.trips) : Fin 4 → Nat :=
  let c0_i32_2051 : BitVec 32 := 0#32
  let v3519 : Index := Scalar.indexCast c0_i32_2051
  let c3_i32_2052 : BitVec 32 := 3#32
  let v3520 : Index := Scalar.indexCast c3_i32_2052
  let c0_i32_255 : BitVec 32 := 0#32
  let c1_i32_257 : BitVec 32 := 1#32
  let arg15 : BitVec 32 := Scf.iv c0_i32_255 c1_i32_257 k0_t2
  let v3521 : Index := Scalar.indexCast arg15
  let c512_2053 : Index := 512#32
  ![0, 3, v3521.toNat, 512]
def k0_off533 (k0_t2 : Fin k0_t2_loop.trips) : Fin 4 → Nat :=
  let c0_i32_2054 : BitVec 32 := 0#32
  let v3525 : Index := Scalar.indexCast c0_i32_2054
  let c3_i32_2055 : BitVec 32 := 3#32
  let v3526 : Index := Scalar.indexCast c3_i32_2055
  let c0_i32_255 : BitVec 32 := 0#32
  let c1_i32_257 : BitVec 32 := 1#32
  let arg15 : BitVec 32 := Scf.iv c0_i32_255 c1_i32_257 k0_t2
  let v3527 : Index := Scalar.indexCast arg15
  let c512_2056 : Index := 512#32
  ![0, 3, v3527.toNat, 512]
def k0_off534 (k0_t2 : Fin k0_t2_loop.trips) : Fin 4 → Nat :=
  let c0_i32_2057 : BitVec 32 := 0#32
  let v3531 : Index := Scalar.indexCast c0_i32_2057
  let c3_i32_2058 : BitVec 32 := 3#32
  let v3532 : Index := Scalar.indexCast c3_i32_2058
  let c0_i32_255 : BitVec 32 := 0#32
  let c1_i32_257 : BitVec 32 := 1#32
  let arg15 : BitVec 32 := Scf.iv c0_i32_255 c1_i32_257 k0_t2
  let v3533 : Index := Scalar.indexCast arg15
  let c528_2059 : Index := 528#32
  ![0, 3, v3533.toNat, 528]
def k0_off535 (k0_t2 : Fin k0_t2_loop.trips) : Fin 4 → Nat :=
  let c0_i32_2060 : BitVec 32 := 0#32
  let v3537 : Index := Scalar.indexCast c0_i32_2060
  let c3_i32_2061 : BitVec 32 := 3#32
  let v3538 : Index := Scalar.indexCast c3_i32_2061
  let c0_i32_255 : BitVec 32 := 0#32
  let c1_i32_257 : BitVec 32 := 1#32
  let arg15 : BitVec 32 := Scf.iv c0_i32_255 c1_i32_257 k0_t2
  let v3539 : Index := Scalar.indexCast arg15
  let c528_2062 : Index := 528#32
  ![0, 3, v3539.toNat, 528]
def k0_off536 (k0_t2 : Fin k0_t2_loop.trips) : Fin 4 → Nat :=
  let c0_i32_2063 : BitVec 32 := 0#32
  let v3543 : Index := Scalar.indexCast c0_i32_2063
  let c3_i32_2064 : BitVec 32 := 3#32
  let v3544 : Index := Scalar.indexCast c3_i32_2064
  let c0_i32_255 : BitVec 32 := 0#32
  let c1_i32_257 : BitVec 32 := 1#32
  let arg15 : BitVec 32 := Scf.iv c0_i32_255 c1_i32_257 k0_t2
  let v3545 : Index := Scalar.indexCast arg15
  let c544_2065 : Index := 544#32
  ![0, 3, v3545.toNat, 544]
def k0_off537 (k0_t2 : Fin k0_t2_loop.trips) : Fin 4 → Nat :=
  let c0_i32_2066 : BitVec 32 := 0#32
  let v3549 : Index := Scalar.indexCast c0_i32_2066
  let c3_i32_2067 : BitVec 32 := 3#32
  let v3550 : Index := Scalar.indexCast c3_i32_2067
  let c0_i32_255 : BitVec 32 := 0#32
  let c1_i32_257 : BitVec 32 := 1#32
  let arg15 : BitVec 32 := Scf.iv c0_i32_255 c1_i32_257 k0_t2
  let v3551 : Index := Scalar.indexCast arg15
  let c544_2068 : Index := 544#32
  ![0, 3, v3551.toNat, 544]
def k0_off538 (k0_t2 : Fin k0_t2_loop.trips) : Fin 4 → Nat :=
  let c0_i32_2069 : BitVec 32 := 0#32
  let v3555 : Index := Scalar.indexCast c0_i32_2069
  let c3_i32_2070 : BitVec 32 := 3#32
  let v3556 : Index := Scalar.indexCast c3_i32_2070
  let c0_i32_255 : BitVec 32 := 0#32
  let c1_i32_257 : BitVec 32 := 1#32
  let arg15 : BitVec 32 := Scf.iv c0_i32_255 c1_i32_257 k0_t2
  let v3557 : Index := Scalar.indexCast arg15
  let c560_2071 : Index := 560#32
  ![0, 3, v3557.toNat, 560]
def k0_off539 (k0_t2 : Fin k0_t2_loop.trips) : Fin 4 → Nat :=
  let c0_i32_2072 : BitVec 32 := 0#32
  let v3561 : Index := Scalar.indexCast c0_i32_2072
  let c3_i32_2073 : BitVec 32 := 3#32
  let v3562 : Index := Scalar.indexCast c3_i32_2073
  let c0_i32_255 : BitVec 32 := 0#32
  let c1_i32_257 : BitVec 32 := 1#32
  let arg15 : BitVec 32 := Scf.iv c0_i32_255 c1_i32_257 k0_t2
  let v3563 : Index := Scalar.indexCast arg15
  let c560_2074 : Index := 560#32
  ![0, 3, v3563.toNat, 560]
def k0_off540 (k0_t2 : Fin k0_t2_loop.trips) : Fin 4 → Nat :=
  let c0_i32_2075 : BitVec 32 := 0#32
  let v3567 : Index := Scalar.indexCast c0_i32_2075
  let c3_i32_2076 : BitVec 32 := 3#32
  let v3568 : Index := Scalar.indexCast c3_i32_2076
  let c0_i32_255 : BitVec 32 := 0#32
  let c1_i32_257 : BitVec 32 := 1#32
  let arg15 : BitVec 32 := Scf.iv c0_i32_255 c1_i32_257 k0_t2
  let v3569 : Index := Scalar.indexCast arg15
  let c576_2077 : Index := 576#32
  ![0, 3, v3569.toNat, 576]
def k0_off541 (k0_t2 : Fin k0_t2_loop.trips) : Fin 4 → Nat :=
  let c0_i32_2078 : BitVec 32 := 0#32
  let v3573 : Index := Scalar.indexCast c0_i32_2078
  let c3_i32_2079 : BitVec 32 := 3#32
  let v3574 : Index := Scalar.indexCast c3_i32_2079
  let c0_i32_255 : BitVec 32 := 0#32
  let c1_i32_257 : BitVec 32 := 1#32
  let arg15 : BitVec 32 := Scf.iv c0_i32_255 c1_i32_257 k0_t2
  let v3575 : Index := Scalar.indexCast arg15
  let c576_2080 : Index := 576#32
  ![0, 3, v3575.toNat, 576]
def k0_off542 (k0_t2 : Fin k0_t2_loop.trips) : Fin 4 → Nat :=
  let c0_i32_2081 : BitVec 32 := 0#32
  let v3579 : Index := Scalar.indexCast c0_i32_2081
  let c3_i32_2082 : BitVec 32 := 3#32
  let v3580 : Index := Scalar.indexCast c3_i32_2082
  let c0_i32_255 : BitVec 32 := 0#32
  let c1_i32_257 : BitVec 32 := 1#32
  let arg15 : BitVec 32 := Scf.iv c0_i32_255 c1_i32_257 k0_t2
  let v3581 : Index := Scalar.indexCast arg15
  let c592_2083 : Index := 592#32
  ![0, 3, v3581.toNat, 592]
def k0_off543 (k0_t2 : Fin k0_t2_loop.trips) : Fin 4 → Nat :=
  let c0_i32_2084 : BitVec 32 := 0#32
  let v3585 : Index := Scalar.indexCast c0_i32_2084
  let c3_i32_2085 : BitVec 32 := 3#32
  let v3586 : Index := Scalar.indexCast c3_i32_2085
  let c0_i32_255 : BitVec 32 := 0#32
  let c1_i32_257 : BitVec 32 := 1#32
  let arg15 : BitVec 32 := Scf.iv c0_i32_255 c1_i32_257 k0_t2
  let v3587 : Index := Scalar.indexCast arg15
  let c592_2086 : Index := 592#32
  ![0, 3, v3587.toNat, 592]
def k0_off544 (k0_t2 : Fin k0_t2_loop.trips) : Fin 4 → Nat :=
  let c0_i32_2087 : BitVec 32 := 0#32
  let v3591 : Index := Scalar.indexCast c0_i32_2087
  let c3_i32_2088 : BitVec 32 := 3#32
  let v3592 : Index := Scalar.indexCast c3_i32_2088
  let c0_i32_255 : BitVec 32 := 0#32
  let c1_i32_257 : BitVec 32 := 1#32
  let arg15 : BitVec 32 := Scf.iv c0_i32_255 c1_i32_257 k0_t2
  let v3593 : Index := Scalar.indexCast arg15
  let c608_2089 : Index := 608#32
  ![0, 3, v3593.toNat, 608]
def k0_off545 (k0_t2 : Fin k0_t2_loop.trips) : Fin 4 → Nat :=
  let c0_i32_2090 : BitVec 32 := 0#32
  let v3597 : Index := Scalar.indexCast c0_i32_2090
  let c3_i32_2091 : BitVec 32 := 3#32
  let v3598 : Index := Scalar.indexCast c3_i32_2091
  let c0_i32_255 : BitVec 32 := 0#32
  let c1_i32_257 : BitVec 32 := 1#32
  let arg15 : BitVec 32 := Scf.iv c0_i32_255 c1_i32_257 k0_t2
  let v3599 : Index := Scalar.indexCast arg15
  let c608_2092 : Index := 608#32
  ![0, 3, v3599.toNat, 608]
def k0_off546 (k0_t2 : Fin k0_t2_loop.trips) : Fin 4 → Nat :=
  let c0_i32_2093 : BitVec 32 := 0#32
  let v3603 : Index := Scalar.indexCast c0_i32_2093
  let c3_i32_2094 : BitVec 32 := 3#32
  let v3604 : Index := Scalar.indexCast c3_i32_2094
  let c0_i32_255 : BitVec 32 := 0#32
  let c1_i32_257 : BitVec 32 := 1#32
  let arg15 : BitVec 32 := Scf.iv c0_i32_255 c1_i32_257 k0_t2
  let v3605 : Index := Scalar.indexCast arg15
  let c624_2095 : Index := 624#32
  ![0, 3, v3605.toNat, 624]
def k0_off547 (k0_t2 : Fin k0_t2_loop.trips) : Fin 4 → Nat :=
  let c0_i32_2096 : BitVec 32 := 0#32
  let v3609 : Index := Scalar.indexCast c0_i32_2096
  let c3_i32_2097 : BitVec 32 := 3#32
  let v3610 : Index := Scalar.indexCast c3_i32_2097
  let c0_i32_255 : BitVec 32 := 0#32
  let c1_i32_257 : BitVec 32 := 1#32
  let arg15 : BitVec 32 := Scf.iv c0_i32_255 c1_i32_257 k0_t2
  let v3611 : Index := Scalar.indexCast arg15
  let c624_2098 : Index := 624#32
  ![0, 3, v3611.toNat, 624]
def k0_off548 (k0_t2 : Fin k0_t2_loop.trips) : Fin 4 → Nat :=
  let c0_i32_2099 : BitVec 32 := 0#32
  let v3615 : Index := Scalar.indexCast c0_i32_2099
  let c3_i32_2100 : BitVec 32 := 3#32
  let v3616 : Index := Scalar.indexCast c3_i32_2100
  let c0_i32_255 : BitVec 32 := 0#32
  let c1_i32_257 : BitVec 32 := 1#32
  let arg15 : BitVec 32 := Scf.iv c0_i32_255 c1_i32_257 k0_t2
  let v3617 : Index := Scalar.indexCast arg15
  let c640_2101 : Index := 640#32
  ![0, 3, v3617.toNat, 640]
def k0_off549 (k0_t2 : Fin k0_t2_loop.trips) : Fin 4 → Nat :=
  let c0_i32_2102 : BitVec 32 := 0#32
  let v3621 : Index := Scalar.indexCast c0_i32_2102
  let c3_i32_2103 : BitVec 32 := 3#32
  let v3622 : Index := Scalar.indexCast c3_i32_2103
  let c0_i32_255 : BitVec 32 := 0#32
  let c1_i32_257 : BitVec 32 := 1#32
  let arg15 : BitVec 32 := Scf.iv c0_i32_255 c1_i32_257 k0_t2
  let v3623 : Index := Scalar.indexCast arg15
  let c640_2104 : Index := 640#32
  ![0, 3, v3623.toNat, 640]
def k0_off550 (k0_t2 : Fin k0_t2_loop.trips) : Fin 4 → Nat :=
  let c0_i32_2105 : BitVec 32 := 0#32
  let v3627 : Index := Scalar.indexCast c0_i32_2105
  let c3_i32_2106 : BitVec 32 := 3#32
  let v3628 : Index := Scalar.indexCast c3_i32_2106
  let c0_i32_255 : BitVec 32 := 0#32
  let c1_i32_257 : BitVec 32 := 1#32
  let arg15 : BitVec 32 := Scf.iv c0_i32_255 c1_i32_257 k0_t2
  let v3629 : Index := Scalar.indexCast arg15
  let c656_2107 : Index := 656#32
  ![0, 3, v3629.toNat, 656]
def k0_off551 (k0_t2 : Fin k0_t2_loop.trips) : Fin 4 → Nat :=
  let c0_i32_2108 : BitVec 32 := 0#32
  let v3633 : Index := Scalar.indexCast c0_i32_2108
  let c3_i32_2109 : BitVec 32 := 3#32
  let v3634 : Index := Scalar.indexCast c3_i32_2109
  let c0_i32_255 : BitVec 32 := 0#32
  let c1_i32_257 : BitVec 32 := 1#32
  let arg15 : BitVec 32 := Scf.iv c0_i32_255 c1_i32_257 k0_t2
  let v3635 : Index := Scalar.indexCast arg15
  let c656_2110 : Index := 656#32
  ![0, 3, v3635.toNat, 656]
def k0_off552 (k0_t2 : Fin k0_t2_loop.trips) : Fin 4 → Nat :=
  let c0_i32_2111 : BitVec 32 := 0#32
  let v3639 : Index := Scalar.indexCast c0_i32_2111
  let c3_i32_2112 : BitVec 32 := 3#32
  let v3640 : Index := Scalar.indexCast c3_i32_2112
  let c0_i32_255 : BitVec 32 := 0#32
  let c1_i32_257 : BitVec 32 := 1#32
  let arg15 : BitVec 32 := Scf.iv c0_i32_255 c1_i32_257 k0_t2
  let v3641 : Index := Scalar.indexCast arg15
  let c672_2113 : Index := 672#32
  ![0, 3, v3641.toNat, 672]
def k0_off553 (k0_t2 : Fin k0_t2_loop.trips) : Fin 4 → Nat :=
  let c0_i32_2114 : BitVec 32 := 0#32
  let v3645 : Index := Scalar.indexCast c0_i32_2114
  let c3_i32_2115 : BitVec 32 := 3#32
  let v3646 : Index := Scalar.indexCast c3_i32_2115
  let c0_i32_255 : BitVec 32 := 0#32
  let c1_i32_257 : BitVec 32 := 1#32
  let arg15 : BitVec 32 := Scf.iv c0_i32_255 c1_i32_257 k0_t2
  let v3647 : Index := Scalar.indexCast arg15
  let c672_2116 : Index := 672#32
  ![0, 3, v3647.toNat, 672]
def k0_off554 (k0_t2 : Fin k0_t2_loop.trips) : Fin 4 → Nat :=
  let c0_i32_2117 : BitVec 32 := 0#32
  let v3651 : Index := Scalar.indexCast c0_i32_2117
  let c3_i32_2118 : BitVec 32 := 3#32
  let v3652 : Index := Scalar.indexCast c3_i32_2118
  let c0_i32_255 : BitVec 32 := 0#32
  let c1_i32_257 : BitVec 32 := 1#32
  let arg15 : BitVec 32 := Scf.iv c0_i32_255 c1_i32_257 k0_t2
  let v3653 : Index := Scalar.indexCast arg15
  let c688_2119 : Index := 688#32
  ![0, 3, v3653.toNat, 688]
def k0_off555 (k0_t2 : Fin k0_t2_loop.trips) : Fin 4 → Nat :=
  let c0_i32_2120 : BitVec 32 := 0#32
  let v3657 : Index := Scalar.indexCast c0_i32_2120
  let c3_i32_2121 : BitVec 32 := 3#32
  let v3658 : Index := Scalar.indexCast c3_i32_2121
  let c0_i32_255 : BitVec 32 := 0#32
  let c1_i32_257 : BitVec 32 := 1#32
  let arg15 : BitVec 32 := Scf.iv c0_i32_255 c1_i32_257 k0_t2
  let v3659 : Index := Scalar.indexCast arg15
  let c688_2122 : Index := 688#32
  ![0, 3, v3659.toNat, 688]
def k0_off556 (k0_t2 : Fin k0_t2_loop.trips) : Fin 4 → Nat :=
  let c0_i32_2123 : BitVec 32 := 0#32
  let v3663 : Index := Scalar.indexCast c0_i32_2123
  let c3_i32_2124 : BitVec 32 := 3#32
  let v3664 : Index := Scalar.indexCast c3_i32_2124
  let c0_i32_255 : BitVec 32 := 0#32
  let c1_i32_257 : BitVec 32 := 1#32
  let arg15 : BitVec 32 := Scf.iv c0_i32_255 c1_i32_257 k0_t2
  let v3665 : Index := Scalar.indexCast arg15
  let c704_2125 : Index := 704#32
  ![0, 3, v3665.toNat, 704]
def k0_off557 (k0_t2 : Fin k0_t2_loop.trips) : Fin 4 → Nat :=
  let c0_i32_2126 : BitVec 32 := 0#32
  let v3669 : Index := Scalar.indexCast c0_i32_2126
  let c3_i32_2127 : BitVec 32 := 3#32
  let v3670 : Index := Scalar.indexCast c3_i32_2127
  let c0_i32_255 : BitVec 32 := 0#32
  let c1_i32_257 : BitVec 32 := 1#32
  let arg15 : BitVec 32 := Scf.iv c0_i32_255 c1_i32_257 k0_t2
  let v3671 : Index := Scalar.indexCast arg15
  let c704_2128 : Index := 704#32
  ![0, 3, v3671.toNat, 704]
def k0_off558 (k0_t2 : Fin k0_t2_loop.trips) : Fin 4 → Nat :=
  let c0_i32_2129 : BitVec 32 := 0#32
  let v3675 : Index := Scalar.indexCast c0_i32_2129
  let c3_i32_2130 : BitVec 32 := 3#32
  let v3676 : Index := Scalar.indexCast c3_i32_2130
  let c0_i32_255 : BitVec 32 := 0#32
  let c1_i32_257 : BitVec 32 := 1#32
  let arg15 : BitVec 32 := Scf.iv c0_i32_255 c1_i32_257 k0_t2
  let v3677 : Index := Scalar.indexCast arg15
  let c720_2131 : Index := 720#32
  ![0, 3, v3677.toNat, 720]
def k0_off559 (k0_t2 : Fin k0_t2_loop.trips) : Fin 4 → Nat :=
  let c0_i32_2132 : BitVec 32 := 0#32
  let v3681 : Index := Scalar.indexCast c0_i32_2132
  let c3_i32_2133 : BitVec 32 := 3#32
  let v3682 : Index := Scalar.indexCast c3_i32_2133
  let c0_i32_255 : BitVec 32 := 0#32
  let c1_i32_257 : BitVec 32 := 1#32
  let arg15 : BitVec 32 := Scf.iv c0_i32_255 c1_i32_257 k0_t2
  let v3683 : Index := Scalar.indexCast arg15
  let c720_2134 : Index := 720#32
  ![0, 3, v3683.toNat, 720]
def k0_off560 (k0_t2 : Fin k0_t2_loop.trips) : Fin 4 → Nat :=
  let c0_i32_2135 : BitVec 32 := 0#32
  let v3687 : Index := Scalar.indexCast c0_i32_2135
  let c3_i32_2136 : BitVec 32 := 3#32
  let v3688 : Index := Scalar.indexCast c3_i32_2136
  let c0_i32_255 : BitVec 32 := 0#32
  let c1_i32_257 : BitVec 32 := 1#32
  let arg15 : BitVec 32 := Scf.iv c0_i32_255 c1_i32_257 k0_t2
  let v3689 : Index := Scalar.indexCast arg15
  let c736_2137 : Index := 736#32
  ![0, 3, v3689.toNat, 736]
def k0_off561 (k0_t2 : Fin k0_t2_loop.trips) : Fin 4 → Nat :=
  let c0_i32_2138 : BitVec 32 := 0#32
  let v3693 : Index := Scalar.indexCast c0_i32_2138
  let c3_i32_2139 : BitVec 32 := 3#32
  let v3694 : Index := Scalar.indexCast c3_i32_2139
  let c0_i32_255 : BitVec 32 := 0#32
  let c1_i32_257 : BitVec 32 := 1#32
  let arg15 : BitVec 32 := Scf.iv c0_i32_255 c1_i32_257 k0_t2
  let v3695 : Index := Scalar.indexCast arg15
  let c736_2140 : Index := 736#32
  ![0, 3, v3695.toNat, 736]
def k0_off562 (k0_t2 : Fin k0_t2_loop.trips) : Fin 4 → Nat :=
  let c0_i32_2141 : BitVec 32 := 0#32
  let v3699 : Index := Scalar.indexCast c0_i32_2141
  let c3_i32_2142 : BitVec 32 := 3#32
  let v3700 : Index := Scalar.indexCast c3_i32_2142
  let c0_i32_255 : BitVec 32 := 0#32
  let c1_i32_257 : BitVec 32 := 1#32
  let arg15 : BitVec 32 := Scf.iv c0_i32_255 c1_i32_257 k0_t2
  let v3701 : Index := Scalar.indexCast arg15
  let c752_2143 : Index := 752#32
  ![0, 3, v3701.toNat, 752]
def k0_off563 (k0_t2 : Fin k0_t2_loop.trips) : Fin 4 → Nat :=
  let c0_i32_2144 : BitVec 32 := 0#32
  let v3705 : Index := Scalar.indexCast c0_i32_2144
  let c3_i32_2145 : BitVec 32 := 3#32
  let v3706 : Index := Scalar.indexCast c3_i32_2145
  let c0_i32_255 : BitVec 32 := 0#32
  let c1_i32_257 : BitVec 32 := 1#32
  let arg15 : BitVec 32 := Scf.iv c0_i32_255 c1_i32_257 k0_t2
  let v3707 : Index := Scalar.indexCast arg15
  let c752_2146 : Index := 752#32
  ![0, 3, v3707.toNat, 752]
def k0_off564 (k0_t2 : Fin k0_t2_loop.trips) : Fin 4 → Nat :=
  let c0_i32_2147 : BitVec 32 := 0#32
  let v3711 : Index := Scalar.indexCast c0_i32_2147
  let c3_i32_2148 : BitVec 32 := 3#32
  let v3712 : Index := Scalar.indexCast c3_i32_2148
  let c0_i32_255 : BitVec 32 := 0#32
  let c1_i32_257 : BitVec 32 := 1#32
  let arg15 : BitVec 32 := Scf.iv c0_i32_255 c1_i32_257 k0_t2
  let v3713 : Index := Scalar.indexCast arg15
  let c768_2149 : Index := 768#32
  ![0, 3, v3713.toNat, 768]
def k0_off565 (k0_t2 : Fin k0_t2_loop.trips) : Fin 4 → Nat :=
  let c0_i32_2150 : BitVec 32 := 0#32
  let v3717 : Index := Scalar.indexCast c0_i32_2150
  let c3_i32_2151 : BitVec 32 := 3#32
  let v3718 : Index := Scalar.indexCast c3_i32_2151
  let c0_i32_255 : BitVec 32 := 0#32
  let c1_i32_257 : BitVec 32 := 1#32
  let arg15 : BitVec 32 := Scf.iv c0_i32_255 c1_i32_257 k0_t2
  let v3719 : Index := Scalar.indexCast arg15
  let c768_2152 : Index := 768#32
  ![0, 3, v3719.toNat, 768]
def k0_off566 (k0_t2 : Fin k0_t2_loop.trips) : Fin 4 → Nat :=
  let c0_i32_2153 : BitVec 32 := 0#32
  let v3723 : Index := Scalar.indexCast c0_i32_2153
  let c3_i32_2154 : BitVec 32 := 3#32
  let v3724 : Index := Scalar.indexCast c3_i32_2154
  let c0_i32_255 : BitVec 32 := 0#32
  let c1_i32_257 : BitVec 32 := 1#32
  let arg15 : BitVec 32 := Scf.iv c0_i32_255 c1_i32_257 k0_t2
  let v3725 : Index := Scalar.indexCast arg15
  let c784_2155 : Index := 784#32
  ![0, 3, v3725.toNat, 784]
def k0_off567 (k0_t2 : Fin k0_t2_loop.trips) : Fin 4 → Nat :=
  let c0_i32_2156 : BitVec 32 := 0#32
  let v3729 : Index := Scalar.indexCast c0_i32_2156
  let c3_i32_2157 : BitVec 32 := 3#32
  let v3730 : Index := Scalar.indexCast c3_i32_2157
  let c0_i32_255 : BitVec 32 := 0#32
  let c1_i32_257 : BitVec 32 := 1#32
  let arg15 : BitVec 32 := Scf.iv c0_i32_255 c1_i32_257 k0_t2
  let v3731 : Index := Scalar.indexCast arg15
  let c784_2158 : Index := 784#32
  ![0, 3, v3731.toNat, 784]
def k0_off568 (k0_t2 : Fin k0_t2_loop.trips) : Fin 4 → Nat :=
  let c0_i32_2159 : BitVec 32 := 0#32
  let v3735 : Index := Scalar.indexCast c0_i32_2159
  let c3_i32_2160 : BitVec 32 := 3#32
  let v3736 : Index := Scalar.indexCast c3_i32_2160
  let c0_i32_255 : BitVec 32 := 0#32
  let c1_i32_257 : BitVec 32 := 1#32
  let arg15 : BitVec 32 := Scf.iv c0_i32_255 c1_i32_257 k0_t2
  let v3737 : Index := Scalar.indexCast arg15
  let c800_2161 : Index := 800#32
  ![0, 3, v3737.toNat, 800]
def k0_off569 (k0_t2 : Fin k0_t2_loop.trips) : Fin 4 → Nat :=
  let c0_i32_2162 : BitVec 32 := 0#32
  let v3741 : Index := Scalar.indexCast c0_i32_2162
  let c3_i32_2163 : BitVec 32 := 3#32
  let v3742 : Index := Scalar.indexCast c3_i32_2163
  let c0_i32_255 : BitVec 32 := 0#32
  let c1_i32_257 : BitVec 32 := 1#32
  let arg15 : BitVec 32 := Scf.iv c0_i32_255 c1_i32_257 k0_t2
  let v3743 : Index := Scalar.indexCast arg15
  let c800_2164 : Index := 800#32
  ![0, 3, v3743.toNat, 800]
def k0_off570 (k0_t2 : Fin k0_t2_loop.trips) : Fin 4 → Nat :=
  let c0_i32_2165 : BitVec 32 := 0#32
  let v3747 : Index := Scalar.indexCast c0_i32_2165
  let c3_i32_2166 : BitVec 32 := 3#32
  let v3748 : Index := Scalar.indexCast c3_i32_2166
  let c0_i32_255 : BitVec 32 := 0#32
  let c1_i32_257 : BitVec 32 := 1#32
  let arg15 : BitVec 32 := Scf.iv c0_i32_255 c1_i32_257 k0_t2
  let v3749 : Index := Scalar.indexCast arg15
  let c816_2167 : Index := 816#32
  ![0, 3, v3749.toNat, 816]
def k0_off571 (k0_t2 : Fin k0_t2_loop.trips) : Fin 4 → Nat :=
  let c0_i32_2168 : BitVec 32 := 0#32
  let v3753 : Index := Scalar.indexCast c0_i32_2168
  let c3_i32_2169 : BitVec 32 := 3#32
  let v3754 : Index := Scalar.indexCast c3_i32_2169
  let c0_i32_255 : BitVec 32 := 0#32
  let c1_i32_257 : BitVec 32 := 1#32
  let arg15 : BitVec 32 := Scf.iv c0_i32_255 c1_i32_257 k0_t2
  let v3755 : Index := Scalar.indexCast arg15
  let c816_2170 : Index := 816#32
  ![0, 3, v3755.toNat, 816]
def k0_off572 (k0_t2 : Fin k0_t2_loop.trips) : Fin 4 → Nat :=
  let c0_i32_2171 : BitVec 32 := 0#32
  let v3759 : Index := Scalar.indexCast c0_i32_2171
  let c3_i32_2172 : BitVec 32 := 3#32
  let v3760 : Index := Scalar.indexCast c3_i32_2172
  let c0_i32_255 : BitVec 32 := 0#32
  let c1_i32_257 : BitVec 32 := 1#32
  let arg15 : BitVec 32 := Scf.iv c0_i32_255 c1_i32_257 k0_t2
  let v3761 : Index := Scalar.indexCast arg15
  let c832_2173 : Index := 832#32
  ![0, 3, v3761.toNat, 832]
def k0_off573 (k0_t2 : Fin k0_t2_loop.trips) : Fin 4 → Nat :=
  let c0_i32_2174 : BitVec 32 := 0#32
  let v3765 : Index := Scalar.indexCast c0_i32_2174
  let c3_i32_2175 : BitVec 32 := 3#32
  let v3766 : Index := Scalar.indexCast c3_i32_2175
  let c0_i32_255 : BitVec 32 := 0#32
  let c1_i32_257 : BitVec 32 := 1#32
  let arg15 : BitVec 32 := Scf.iv c0_i32_255 c1_i32_257 k0_t2
  let v3767 : Index := Scalar.indexCast arg15
  let c832_2176 : Index := 832#32
  ![0, 3, v3767.toNat, 832]
def k0_off574 (k0_t2 : Fin k0_t2_loop.trips) : Fin 4 → Nat :=
  let c0_i32_2177 : BitVec 32 := 0#32
  let v3771 : Index := Scalar.indexCast c0_i32_2177
  let c3_i32_2178 : BitVec 32 := 3#32
  let v3772 : Index := Scalar.indexCast c3_i32_2178
  let c0_i32_255 : BitVec 32 := 0#32
  let c1_i32_257 : BitVec 32 := 1#32
  let arg15 : BitVec 32 := Scf.iv c0_i32_255 c1_i32_257 k0_t2
  let v3773 : Index := Scalar.indexCast arg15
  let c848_2179 : Index := 848#32
  ![0, 3, v3773.toNat, 848]
def k0_off575 (k0_t2 : Fin k0_t2_loop.trips) : Fin 4 → Nat :=
  let c0_i32_2180 : BitVec 32 := 0#32
  let v3777 : Index := Scalar.indexCast c0_i32_2180
  let c3_i32_2181 : BitVec 32 := 3#32
  let v3778 : Index := Scalar.indexCast c3_i32_2181
  let c0_i32_255 : BitVec 32 := 0#32
  let c1_i32_257 : BitVec 32 := 1#32
  let arg15 : BitVec 32 := Scf.iv c0_i32_255 c1_i32_257 k0_t2
  let v3779 : Index := Scalar.indexCast arg15
  let c848_2182 : Index := 848#32
  ![0, 3, v3779.toNat, 848]
def k0_off576 (k0_t2 : Fin k0_t2_loop.trips) : Fin 4 → Nat :=
  let c0_i32_2183 : BitVec 32 := 0#32
  let v3783 : Index := Scalar.indexCast c0_i32_2183
  let c3_i32_2184 : BitVec 32 := 3#32
  let v3784 : Index := Scalar.indexCast c3_i32_2184
  let c0_i32_255 : BitVec 32 := 0#32
  let c1_i32_257 : BitVec 32 := 1#32
  let arg15 : BitVec 32 := Scf.iv c0_i32_255 c1_i32_257 k0_t2
  let v3785 : Index := Scalar.indexCast arg15
  let c864_2185 : Index := 864#32
  ![0, 3, v3785.toNat, 864]
def k0_off577 (k0_t2 : Fin k0_t2_loop.trips) : Fin 4 → Nat :=
  let c0_i32_2186 : BitVec 32 := 0#32
  let v3789 : Index := Scalar.indexCast c0_i32_2186
  let c3_i32_2187 : BitVec 32 := 3#32
  let v3790 : Index := Scalar.indexCast c3_i32_2187
  let c0_i32_255 : BitVec 32 := 0#32
  let c1_i32_257 : BitVec 32 := 1#32
  let arg15 : BitVec 32 := Scf.iv c0_i32_255 c1_i32_257 k0_t2
  let v3791 : Index := Scalar.indexCast arg15
  let c864_2188 : Index := 864#32
  ![0, 3, v3791.toNat, 864]
def k0_off578 (k0_t2 : Fin k0_t2_loop.trips) : Fin 4 → Nat :=
  let c0_i32_2189 : BitVec 32 := 0#32
  let v3795 : Index := Scalar.indexCast c0_i32_2189
  let c3_i32_2190 : BitVec 32 := 3#32
  let v3796 : Index := Scalar.indexCast c3_i32_2190
  let c0_i32_255 : BitVec 32 := 0#32
  let c1_i32_257 : BitVec 32 := 1#32
  let arg15 : BitVec 32 := Scf.iv c0_i32_255 c1_i32_257 k0_t2
  let v3797 : Index := Scalar.indexCast arg15
  let c880_2191 : Index := 880#32
  ![0, 3, v3797.toNat, 880]
def k0_off579 (k0_t2 : Fin k0_t2_loop.trips) : Fin 4 → Nat :=
  let c0_i32_2192 : BitVec 32 := 0#32
  let v3801 : Index := Scalar.indexCast c0_i32_2192
  let c3_i32_2193 : BitVec 32 := 3#32
  let v3802 : Index := Scalar.indexCast c3_i32_2193
  let c0_i32_255 : BitVec 32 := 0#32
  let c1_i32_257 : BitVec 32 := 1#32
  let arg15 : BitVec 32 := Scf.iv c0_i32_255 c1_i32_257 k0_t2
  let v3803 : Index := Scalar.indexCast arg15
  let c880_2194 : Index := 880#32
  ![0, 3, v3803.toNat, 880]
def k0_off580 (k0_t2 : Fin k0_t2_loop.trips) : Fin 4 → Nat :=
  let c0_i32_2195 : BitVec 32 := 0#32
  let v3807 : Index := Scalar.indexCast c0_i32_2195
  let c3_i32_2196 : BitVec 32 := 3#32
  let v3808 : Index := Scalar.indexCast c3_i32_2196
  let c0_i32_255 : BitVec 32 := 0#32
  let c1_i32_257 : BitVec 32 := 1#32
  let arg15 : BitVec 32 := Scf.iv c0_i32_255 c1_i32_257 k0_t2
  let v3809 : Index := Scalar.indexCast arg15
  let c896_2197 : Index := 896#32
  ![0, 3, v3809.toNat, 896]
def k0_off581 (k0_t2 : Fin k0_t2_loop.trips) : Fin 4 → Nat :=
  let c0_i32_2198 : BitVec 32 := 0#32
  let v3813 : Index := Scalar.indexCast c0_i32_2198
  let c3_i32_2199 : BitVec 32 := 3#32
  let v3814 : Index := Scalar.indexCast c3_i32_2199
  let c0_i32_255 : BitVec 32 := 0#32
  let c1_i32_257 : BitVec 32 := 1#32
  let arg15 : BitVec 32 := Scf.iv c0_i32_255 c1_i32_257 k0_t2
  let v3815 : Index := Scalar.indexCast arg15
  let c896_2200 : Index := 896#32
  ![0, 3, v3815.toNat, 896]
def k0_off582 (k0_t2 : Fin k0_t2_loop.trips) : Fin 4 → Nat :=
  let c0_i32_2201 : BitVec 32 := 0#32
  let v3819 : Index := Scalar.indexCast c0_i32_2201
  let c3_i32_2202 : BitVec 32 := 3#32
  let v3820 : Index := Scalar.indexCast c3_i32_2202
  let c0_i32_255 : BitVec 32 := 0#32
  let c1_i32_257 : BitVec 32 := 1#32
  let arg15 : BitVec 32 := Scf.iv c0_i32_255 c1_i32_257 k0_t2
  let v3821 : Index := Scalar.indexCast arg15
  let c912_2203 : Index := 912#32
  ![0, 3, v3821.toNat, 912]
def k0_off583 (k0_t2 : Fin k0_t2_loop.trips) : Fin 4 → Nat :=
  let c0_i32_2204 : BitVec 32 := 0#32
  let v3825 : Index := Scalar.indexCast c0_i32_2204
  let c3_i32_2205 : BitVec 32 := 3#32
  let v3826 : Index := Scalar.indexCast c3_i32_2205
  let c0_i32_255 : BitVec 32 := 0#32
  let c1_i32_257 : BitVec 32 := 1#32
  let arg15 : BitVec 32 := Scf.iv c0_i32_255 c1_i32_257 k0_t2
  let v3827 : Index := Scalar.indexCast arg15
  let c912_2206 : Index := 912#32
  ![0, 3, v3827.toNat, 912]
def k0_off584 (k0_t2 : Fin k0_t2_loop.trips) : Fin 4 → Nat :=
  let c0_i32_2207 : BitVec 32 := 0#32
  let v3831 : Index := Scalar.indexCast c0_i32_2207
  let c3_i32_2208 : BitVec 32 := 3#32
  let v3832 : Index := Scalar.indexCast c3_i32_2208
  let c0_i32_255 : BitVec 32 := 0#32
  let c1_i32_257 : BitVec 32 := 1#32
  let arg15 : BitVec 32 := Scf.iv c0_i32_255 c1_i32_257 k0_t2
  let v3833 : Index := Scalar.indexCast arg15
  let c928_2209 : Index := 928#32
  ![0, 3, v3833.toNat, 928]
def k0_off585 (k0_t2 : Fin k0_t2_loop.trips) : Fin 4 → Nat :=
  let c0_i32_2210 : BitVec 32 := 0#32
  let v3837 : Index := Scalar.indexCast c0_i32_2210
  let c3_i32_2211 : BitVec 32 := 3#32
  let v3838 : Index := Scalar.indexCast c3_i32_2211
  let c0_i32_255 : BitVec 32 := 0#32
  let c1_i32_257 : BitVec 32 := 1#32
  let arg15 : BitVec 32 := Scf.iv c0_i32_255 c1_i32_257 k0_t2
  let v3839 : Index := Scalar.indexCast arg15
  let c928_2212 : Index := 928#32
  ![0, 3, v3839.toNat, 928]
def k0_off586 (k0_t2 : Fin k0_t2_loop.trips) : Fin 4 → Nat :=
  let c0_i32_2213 : BitVec 32 := 0#32
  let v3843 : Index := Scalar.indexCast c0_i32_2213
  let c3_i32_2214 : BitVec 32 := 3#32
  let v3844 : Index := Scalar.indexCast c3_i32_2214
  let c0_i32_255 : BitVec 32 := 0#32
  let c1_i32_257 : BitVec 32 := 1#32
  let arg15 : BitVec 32 := Scf.iv c0_i32_255 c1_i32_257 k0_t2
  let v3845 : Index := Scalar.indexCast arg15
  let c944_2215 : Index := 944#32
  ![0, 3, v3845.toNat, 944]
def k0_off587 (k0_t2 : Fin k0_t2_loop.trips) : Fin 4 → Nat :=
  let c0_i32_2216 : BitVec 32 := 0#32
  let v3849 : Index := Scalar.indexCast c0_i32_2216
  let c3_i32_2217 : BitVec 32 := 3#32
  let v3850 : Index := Scalar.indexCast c3_i32_2217
  let c0_i32_255 : BitVec 32 := 0#32
  let c1_i32_257 : BitVec 32 := 1#32
  let arg15 : BitVec 32 := Scf.iv c0_i32_255 c1_i32_257 k0_t2
  let v3851 : Index := Scalar.indexCast arg15
  let c944_2218 : Index := 944#32
  ![0, 3, v3851.toNat, 944]
def k0_off588 (k0_t2 : Fin k0_t2_loop.trips) : Fin 4 → Nat :=
  let c0_i32_2219 : BitVec 32 := 0#32
  let v3855 : Index := Scalar.indexCast c0_i32_2219
  let c3_i32_2220 : BitVec 32 := 3#32
  let v3856 : Index := Scalar.indexCast c3_i32_2220
  let c0_i32_255 : BitVec 32 := 0#32
  let c1_i32_257 : BitVec 32 := 1#32
  let arg15 : BitVec 32 := Scf.iv c0_i32_255 c1_i32_257 k0_t2
  let v3857 : Index := Scalar.indexCast arg15
  let c960_2221 : Index := 960#32
  ![0, 3, v3857.toNat, 960]
def k0_off589 (k0_t2 : Fin k0_t2_loop.trips) : Fin 4 → Nat :=
  let c0_i32_2222 : BitVec 32 := 0#32
  let v3861 : Index := Scalar.indexCast c0_i32_2222
  let c3_i32_2223 : BitVec 32 := 3#32
  let v3862 : Index := Scalar.indexCast c3_i32_2223
  let c0_i32_255 : BitVec 32 := 0#32
  let c1_i32_257 : BitVec 32 := 1#32
  let arg15 : BitVec 32 := Scf.iv c0_i32_255 c1_i32_257 k0_t2
  let v3863 : Index := Scalar.indexCast arg15
  let c960_2224 : Index := 960#32
  ![0, 3, v3863.toNat, 960]
def k0_off590 (k0_t2 : Fin k0_t2_loop.trips) : Fin 4 → Nat :=
  let c0_i32_2225 : BitVec 32 := 0#32
  let v3867 : Index := Scalar.indexCast c0_i32_2225
  let c3_i32_2226 : BitVec 32 := 3#32
  let v3868 : Index := Scalar.indexCast c3_i32_2226
  let c0_i32_255 : BitVec 32 := 0#32
  let c1_i32_257 : BitVec 32 := 1#32
  let arg15 : BitVec 32 := Scf.iv c0_i32_255 c1_i32_257 k0_t2
  let v3869 : Index := Scalar.indexCast arg15
  let c976_2227 : Index := 976#32
  ![0, 3, v3869.toNat, 976]
def k0_off591 (k0_t2 : Fin k0_t2_loop.trips) : Fin 4 → Nat :=
  let c0_i32_2228 : BitVec 32 := 0#32
  let v3873 : Index := Scalar.indexCast c0_i32_2228
  let c3_i32_2229 : BitVec 32 := 3#32
  let v3874 : Index := Scalar.indexCast c3_i32_2229
  let c0_i32_255 : BitVec 32 := 0#32
  let c1_i32_257 : BitVec 32 := 1#32
  let arg15 : BitVec 32 := Scf.iv c0_i32_255 c1_i32_257 k0_t2
  let v3875 : Index := Scalar.indexCast arg15
  let c976_2230 : Index := 976#32
  ![0, 3, v3875.toNat, 976]
def k0_off592 (k0_t2 : Fin k0_t2_loop.trips) : Fin 4 → Nat :=
  let c0_i32_2231 : BitVec 32 := 0#32
  let v3879 : Index := Scalar.indexCast c0_i32_2231
  let c3_i32_2232 : BitVec 32 := 3#32
  let v3880 : Index := Scalar.indexCast c3_i32_2232
  let c0_i32_255 : BitVec 32 := 0#32
  let c1_i32_257 : BitVec 32 := 1#32
  let arg15 : BitVec 32 := Scf.iv c0_i32_255 c1_i32_257 k0_t2
  let v3881 : Index := Scalar.indexCast arg15
  let c992_2233 : Index := 992#32
  ![0, 3, v3881.toNat, 992]
def k0_off593 (k0_t2 : Fin k0_t2_loop.trips) : Fin 4 → Nat :=
  let c0_i32_2234 : BitVec 32 := 0#32
  let v3885 : Index := Scalar.indexCast c0_i32_2234
  let c3_i32_2235 : BitVec 32 := 3#32
  let v3886 : Index := Scalar.indexCast c3_i32_2235
  let c0_i32_255 : BitVec 32 := 0#32
  let c1_i32_257 : BitVec 32 := 1#32
  let arg15 : BitVec 32 := Scf.iv c0_i32_255 c1_i32_257 k0_t2
  let v3887 : Index := Scalar.indexCast arg15
  let c992_2236 : Index := 992#32
  ![0, 3, v3887.toNat, 992]
def k0_off594 (k0_t2 : Fin k0_t2_loop.trips) : Fin 4 → Nat :=
  let c0_i32_2237 : BitVec 32 := 0#32
  let v3891 : Index := Scalar.indexCast c0_i32_2237
  let c3_i32_2238 : BitVec 32 := 3#32
  let v3892 : Index := Scalar.indexCast c3_i32_2238
  let c0_i32_255 : BitVec 32 := 0#32
  let c1_i32_257 : BitVec 32 := 1#32
  let arg15 : BitVec 32 := Scf.iv c0_i32_255 c1_i32_257 k0_t2
  let v3893 : Index := Scalar.indexCast arg15
  let c1008_2239 : Index := 1008#32
  ![0, 3, v3893.toNat, 1008]
def k0_off595 (k0_t2 : Fin k0_t2_loop.trips) : Fin 4 → Nat :=
  let c0_i32_2240 : BitVec 32 := 0#32
  let v3897 : Index := Scalar.indexCast c0_i32_2240
  let c3_i32_2241 : BitVec 32 := 3#32
  let v3898 : Index := Scalar.indexCast c3_i32_2241
  let c0_i32_255 : BitVec 32 := 0#32
  let c1_i32_257 : BitVec 32 := 1#32
  let arg15 : BitVec 32 := Scf.iv c0_i32_255 c1_i32_257 k0_t2
  let v3899 : Index := Scalar.indexCast arg15
  let c1008_2242 : Index := 1008#32
  ![0, 3, v3899.toNat, 1008]
def k0_off596 (i : grid0.Coords) (k0_t1 : Fin k0_t1_loop.trips) (c0_i32_205 : BitVec 32) : Fin 3 → Nat :=
  let c0_i32_262 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let v186 : BitVec 32 := Scalar.addi v185 c0_i32_205
  let c4_i32_259 : BitVec 32 := 4#32
  let v234 : BitVec 32 := Scalar.muli v186 c4_i32_259
  let v235 : BitVec 32 := Scalar.addi v2 v234
  let c0_i32_265 : BitVec 32 := 0#32
  ![0, v235.toNat, 0]
def k0_off597 (i : grid0.Coords) (k0_t1 : Fin k0_t1_loop.trips) (c0_i32_205 : BitVec 32) : Fin 3 → Nat :=
  let c1_i32_271 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let v186 : BitVec 32 := Scalar.addi v185 c0_i32_205
  let c4_i32_259 : BitVec 32 := 4#32
  let v234 : BitVec 32 := Scalar.muli v186 c4_i32_259
  let v235 : BitVec 32 := Scalar.addi v2 v234
  let c0_i32_274 : BitVec 32 := 0#32
  ![1, v235.toNat, 0]
def k0_off598 (i : grid0.Coords) (k0_t1 : Fin k0_t1_loop.trips) (c0_i32_205 : BitVec 32) : Fin 3 → Nat :=
  let c2_i32_280 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let v186 : BitVec 32 := Scalar.addi v185 c0_i32_205
  let c4_i32_259 : BitVec 32 := 4#32
  let v234 : BitVec 32 := Scalar.muli v186 c4_i32_259
  let v235 : BitVec 32 := Scalar.addi v2 v234
  let c0_i32_283 : BitVec 32 := 0#32
  ![2, v235.toNat, 0]
def k0_off599 (i : grid0.Coords) (k0_t1 : Fin k0_t1_loop.trips) (c0_i32_205 : BitVec 32) : Fin 3 → Nat :=
  let c3_i32_289 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_204 : BitVec 32 := 4#32
  let v185 : BitVec 32 := Scalar.muli arg14 c4_i32_204
  let v186 : BitVec 32 := Scalar.addi v185 c0_i32_205
  let c4_i32_259 : BitVec 32 := 4#32
  let v234 : BitVec 32 := Scalar.muli v186 c4_i32_259
  let v235 : BitVec 32 := Scalar.addi v2 v234
  let c0_i32_292 : BitVec 32 := 0#32
  ![3, v235.toNat, 0]
def k0_cond3 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c32_i32_343 : BitVec 32 := 32#32
  let v310 : BitVec 1 := Scalar.cmpi .slt v309 c32_i32_343
  let v311 : BitVec 32 := Scalar.extui v310
  let c0_i32_344 : BitVec 32 := 0#32
  let v312 : BitVec 1 := Scalar.cmpi .ne v311 c0_i32_344
  v312

def k0_off600 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c4_i32_643 : BitVec 32 := 4#32
  let v575 : BitVec 32 := Scalar.muli v309 c4_i32_643
  let v576 : BitVec 32 := Scalar.addi v2 v575
  let c0_i32_647 : BitVec 32 := 0#32
  ![v576.toNat, 0]
def k0_off601 (i : grid0.Coords) (k0_t1 : Fin k0_t1_loop.trips) : Fin 3 → Nat :=
  let c0_i32_651 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c4_i32_643 : BitVec 32 := 4#32
  let v575 : BitVec 32 := Scalar.muli v309 c4_i32_643
  let v576 : BitVec 32 := Scalar.addi v2 v575
  let c0_i32_656 : BitVec 32 := 0#32
  ![0, v576.toNat, 0]
def k0_off602 (i : grid0.Coords) (k0_t1 : Fin k0_t1_loop.trips) : Fin 3 → Nat :=
  let c1_i32_660 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c4_i32_643 : BitVec 32 := 4#32
  let v575 : BitVec 32 := Scalar.muli v309 c4_i32_643
  let v576 : BitVec 32 := Scalar.addi v2 v575
  let c0_i32_665 : BitVec 32 := 0#32
  ![1, v576.toNat, 0]
def k0_off603 (i : grid0.Coords) (k0_t1 : Fin k0_t1_loop.trips) : Fin 3 → Nat :=
  let c2_i32_669 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c4_i32_643 : BitVec 32 := 4#32
  let v575 : BitVec 32 := Scalar.muli v309 c4_i32_643
  let v576 : BitVec 32 := Scalar.addi v2 v575
  let c0_i32_674 : BitVec 32 := 0#32
  ![2, v576.toNat, 0]
def k0_off604 (i : grid0.Coords) (k0_t1 : Fin k0_t1_loop.trips) : Fin 3 → Nat :=
  let c3_i32_678 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_296 : BitVec 32 := 4#32
  let v268 : BitVec 32 := Scalar.muli arg14 c4_i32_296
  let c1_i32_297 : BitVec 32 := 1#32
  let v269 : BitVec 32 := Scalar.addi v268 c1_i32_297
  let c4_i32_341 : BitVec 32 := 4#32
  let v308 : BitVec 32 := Scalar.addi v269 c4_i32_341
  let c1_i32_342 : BitVec 32 := 1#32
  let v309 : BitVec 32 := Scalar.subi v308 c1_i32_342
  let c4_i32_643 : BitVec 32 := 4#32
  let v575 : BitVec 32 := Scalar.muli v309 c4_i32_643
  let v576 : BitVec 32 := Scalar.addi v2 v575
  let c0_i32_683 : BitVec 32 := 0#32
  ![3, v576.toNat, 0]
def k0_cond4 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c0_i32_345 : BitVec 32 := 0#32
  let v313 : BitVec 1 := Scalar.cmpi .sgt arg14 c0_i32_345
  let v314 : BitVec 32 := Scalar.extui v313
  let c0_i32_346 : BitVec 32 := 0#32
  let v315 : BitVec 1 := Scalar.cmpi .ne v314 c0_i32_346
  v315

def k0_off605 (i : grid0.Coords) : Fin 3 → Nat :=
  let c0_i32_645 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_648 : BitVec 32 := 0#32
  ![0, v2.toNat, 0]
def k0_off606 (i : grid0.Coords) : Fin 3 → Nat :=
  let c1_i32_654 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_657 : BitVec 32 := 0#32
  ![1, v2.toNat, 0]
def k0_off607 (i : grid0.Coords) : Fin 3 → Nat :=
  let c2_i32_663 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_666 : BitVec 32 := 0#32
  ![2, v2.toNat, 0]
def k0_off608 (i : grid0.Coords) : Fin 3 → Nat :=
  let c3_i32_672 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_675 : BitVec 32 := 0#32
  ![3, v2.toNat, 0]
@[reducible] def k0_t3_loop : Scf.Loop 32 :=
  let c0_i32_348 : BitVec 32 := 0#32
  let c4_i32_349 : BitVec 32 := 4#32
  let v316 : BitVec 32 := Scalar.addi c0_i32_348 c4_i32_349
  let c1_i32_350 : BitVec 32 := 1#32
  ⟨c0_i32_348, v316, c1_i32_350⟩
def k0_off609 (k0_t3 : Fin k0_t3_loop.trips) : Fin 3 → Nat :=
  let c1_i32_643 : BitVec 32 := 1#32
  let v575 : Index := Scalar.indexCast c1_i32_643
  let c0_i32_348 : BitVec 32 := 0#32
  let c1_i32_350 : BitVec 32 := 1#32
  let arg15 : BitVec 32 := Scf.iv c0_i32_348 c1_i32_350 k0_t3
  let v576 : Index := Scalar.indexCast arg15
  let c0 : Index := 0#32
  ![1, v576.toNat, 0]
def k0_off610 (k0_t3 : Fin k0_t3_loop.trips) : Fin 3 → Nat :=
  let c1_i32_644 : BitVec 32 := 1#32
  let v579 : Index := Scalar.indexCast c1_i32_644
  let c0_i32_348 : BitVec 32 := 0#32
  let c1_i32_350 : BitVec 32 := 1#32
  let arg15 : BitVec 32 := Scf.iv c0_i32_348 c1_i32_350 k0_t3
  let v580 : Index := Scalar.indexCast arg15
  let c16 : Index := 16#32
  ![1, v580.toNat, 16]
def k0_off611 (k0_t3 : Fin k0_t3_loop.trips) : Fin 3 → Nat :=
  let c1_i32_645 : BitVec 32 := 1#32
  let v583 : Index := Scalar.indexCast c1_i32_645
  let c0_i32_348 : BitVec 32 := 0#32
  let c1_i32_350 : BitVec 32 := 1#32
  let arg15 : BitVec 32 := Scf.iv c0_i32_348 c1_i32_350 k0_t3
  let v584 : Index := Scalar.indexCast arg15
  let c32 : Index := 32#32
  ![1, v584.toNat, 32]
def k0_off612 (k0_t3 : Fin k0_t3_loop.trips) : Fin 3 → Nat :=
  let c1_i32_646 : BitVec 32 := 1#32
  let v587 : Index := Scalar.indexCast c1_i32_646
  let c0_i32_348 : BitVec 32 := 0#32
  let c1_i32_350 : BitVec 32 := 1#32
  let arg15 : BitVec 32 := Scf.iv c0_i32_348 c1_i32_350 k0_t3
  let v588 : Index := Scalar.indexCast arg15
  let c48 : Index := 48#32
  ![1, v588.toNat, 48]
def k0_off613 (k0_t3 : Fin k0_t3_loop.trips) : Fin 3 → Nat :=
  let c1_i32_647 : BitVec 32 := 1#32
  let v591 : Index := Scalar.indexCast c1_i32_647
  let c0_i32_348 : BitVec 32 := 0#32
  let c1_i32_350 : BitVec 32 := 1#32
  let arg15 : BitVec 32 := Scf.iv c0_i32_348 c1_i32_350 k0_t3
  let v592 : Index := Scalar.indexCast arg15
  let c64 : Index := 64#32
  ![1, v592.toNat, 64]
def k0_off614 (k0_t3 : Fin k0_t3_loop.trips) : Fin 3 → Nat :=
  let c1_i32_648 : BitVec 32 := 1#32
  let v595 : Index := Scalar.indexCast c1_i32_648
  let c0_i32_348 : BitVec 32 := 0#32
  let c1_i32_350 : BitVec 32 := 1#32
  let arg15 : BitVec 32 := Scf.iv c0_i32_348 c1_i32_350 k0_t3
  let v596 : Index := Scalar.indexCast arg15
  let c80 : Index := 80#32
  ![1, v596.toNat, 80]
def k0_off615 (k0_t3 : Fin k0_t3_loop.trips) : Fin 3 → Nat :=
  let c1_i32_649 : BitVec 32 := 1#32
  let v599 : Index := Scalar.indexCast c1_i32_649
  let c0_i32_348 : BitVec 32 := 0#32
  let c1_i32_350 : BitVec 32 := 1#32
  let arg15 : BitVec 32 := Scf.iv c0_i32_348 c1_i32_350 k0_t3
  let v600 : Index := Scalar.indexCast arg15
  let c96 : Index := 96#32
  ![1, v600.toNat, 96]
def k0_off616 (k0_t3 : Fin k0_t3_loop.trips) : Fin 3 → Nat :=
  let c1_i32_650 : BitVec 32 := 1#32
  let v603 : Index := Scalar.indexCast c1_i32_650
  let c0_i32_348 : BitVec 32 := 0#32
  let c1_i32_350 : BitVec 32 := 1#32
  let arg15 : BitVec 32 := Scf.iv c0_i32_348 c1_i32_350 k0_t3
  let v604 : Index := Scalar.indexCast arg15
  let c112 : Index := 112#32
  ![1, v604.toNat, 112]
def k0_off617 (k0_t3 : Fin k0_t3_loop.trips) : Fin 3 → Nat :=
  let c1_i32_651 : BitVec 32 := 1#32
  let v607 : Index := Scalar.indexCast c1_i32_651
  let c0_i32_348 : BitVec 32 := 0#32
  let c1_i32_350 : BitVec 32 := 1#32
  let arg15 : BitVec 32 := Scf.iv c0_i32_348 c1_i32_350 k0_t3
  let v608 : Index := Scalar.indexCast arg15
  let c128 : Index := 128#32
  ![1, v608.toNat, 128]
def k0_off618 (k0_t3 : Fin k0_t3_loop.trips) : Fin 3 → Nat :=
  let c1_i32_652 : BitVec 32 := 1#32
  let v611 : Index := Scalar.indexCast c1_i32_652
  let c0_i32_348 : BitVec 32 := 0#32
  let c1_i32_350 : BitVec 32 := 1#32
  let arg15 : BitVec 32 := Scf.iv c0_i32_348 c1_i32_350 k0_t3
  let v612 : Index := Scalar.indexCast arg15
  let c144 : Index := 144#32
  ![1, v612.toNat, 144]
def k0_off619 (k0_t3 : Fin k0_t3_loop.trips) : Fin 3 → Nat :=
  let c1_i32_653 : BitVec 32 := 1#32
  let v615 : Index := Scalar.indexCast c1_i32_653
  let c0_i32_348 : BitVec 32 := 0#32
  let c1_i32_350 : BitVec 32 := 1#32
  let arg15 : BitVec 32 := Scf.iv c0_i32_348 c1_i32_350 k0_t3
  let v616 : Index := Scalar.indexCast arg15
  let c160 : Index := 160#32
  ![1, v616.toNat, 160]
def k0_off620 (k0_t3 : Fin k0_t3_loop.trips) : Fin 3 → Nat :=
  let c1_i32_654 : BitVec 32 := 1#32
  let v619 : Index := Scalar.indexCast c1_i32_654
  let c0_i32_348 : BitVec 32 := 0#32
  let c1_i32_350 : BitVec 32 := 1#32
  let arg15 : BitVec 32 := Scf.iv c0_i32_348 c1_i32_350 k0_t3
  let v620 : Index := Scalar.indexCast arg15
  let c176 : Index := 176#32
  ![1, v620.toNat, 176]
def k0_off621 (k0_t3 : Fin k0_t3_loop.trips) : Fin 3 → Nat :=
  let c1_i32_655 : BitVec 32 := 1#32
  let v623 : Index := Scalar.indexCast c1_i32_655
  let c0_i32_348 : BitVec 32 := 0#32
  let c1_i32_350 : BitVec 32 := 1#32
  let arg15 : BitVec 32 := Scf.iv c0_i32_348 c1_i32_350 k0_t3
  let v624 : Index := Scalar.indexCast arg15
  let c192 : Index := 192#32
  ![1, v624.toNat, 192]
def k0_off622 (k0_t3 : Fin k0_t3_loop.trips) : Fin 3 → Nat :=
  let c1_i32_656 : BitVec 32 := 1#32
  let v627 : Index := Scalar.indexCast c1_i32_656
  let c0_i32_348 : BitVec 32 := 0#32
  let c1_i32_350 : BitVec 32 := 1#32
  let arg15 : BitVec 32 := Scf.iv c0_i32_348 c1_i32_350 k0_t3
  let v628 : Index := Scalar.indexCast arg15
  let c208 : Index := 208#32
  ![1, v628.toNat, 208]
def k0_off623 (k0_t3 : Fin k0_t3_loop.trips) : Fin 3 → Nat :=
  let c1_i32_657 : BitVec 32 := 1#32
  let v631 : Index := Scalar.indexCast c1_i32_657
  let c0_i32_348 : BitVec 32 := 0#32
  let c1_i32_350 : BitVec 32 := 1#32
  let arg15 : BitVec 32 := Scf.iv c0_i32_348 c1_i32_350 k0_t3
  let v632 : Index := Scalar.indexCast arg15
  let c224 : Index := 224#32
  ![1, v632.toNat, 224]
def k0_off624 (k0_t3 : Fin k0_t3_loop.trips) : Fin 3 → Nat :=
  let c1_i32_658 : BitVec 32 := 1#32
  let v635 : Index := Scalar.indexCast c1_i32_658
  let c0_i32_348 : BitVec 32 := 0#32
  let c1_i32_350 : BitVec 32 := 1#32
  let arg15 : BitVec 32 := Scf.iv c0_i32_348 c1_i32_350 k0_t3
  let v636 : Index := Scalar.indexCast arg15
  let c240 : Index := 240#32
  ![1, v636.toNat, 240]
def k0_off625 (k0_t3 : Fin k0_t3_loop.trips) : Fin 3 → Nat :=
  let c1_i32_659 : BitVec 32 := 1#32
  let v639 : Index := Scalar.indexCast c1_i32_659
  let c0_i32_348 : BitVec 32 := 0#32
  let c1_i32_350 : BitVec 32 := 1#32
  let arg15 : BitVec 32 := Scf.iv c0_i32_348 c1_i32_350 k0_t3
  let v640 : Index := Scalar.indexCast arg15
  let c256 : Index := 256#32
  ![1, v640.toNat, 256]
def k0_off626 (k0_t3 : Fin k0_t3_loop.trips) : Fin 3 → Nat :=
  let c1_i32_660 : BitVec 32 := 1#32
  let v643 : Index := Scalar.indexCast c1_i32_660
  let c0_i32_348 : BitVec 32 := 0#32
  let c1_i32_350 : BitVec 32 := 1#32
  let arg15 : BitVec 32 := Scf.iv c0_i32_348 c1_i32_350 k0_t3
  let v644 : Index := Scalar.indexCast arg15
  let c272 : Index := 272#32
  ![1, v644.toNat, 272]
def k0_off627 (k0_t3 : Fin k0_t3_loop.trips) : Fin 3 → Nat :=
  let c1_i32_661 : BitVec 32 := 1#32
  let v647 : Index := Scalar.indexCast c1_i32_661
  let c0_i32_348 : BitVec 32 := 0#32
  let c1_i32_350 : BitVec 32 := 1#32
  let arg15 : BitVec 32 := Scf.iv c0_i32_348 c1_i32_350 k0_t3
  let v648 : Index := Scalar.indexCast arg15
  let c288 : Index := 288#32
  ![1, v648.toNat, 288]
def k0_off628 (k0_t3 : Fin k0_t3_loop.trips) : Fin 3 → Nat :=
  let c1_i32_662 : BitVec 32 := 1#32
  let v651 : Index := Scalar.indexCast c1_i32_662
  let c0_i32_348 : BitVec 32 := 0#32
  let c1_i32_350 : BitVec 32 := 1#32
  let arg15 : BitVec 32 := Scf.iv c0_i32_348 c1_i32_350 k0_t3
  let v652 : Index := Scalar.indexCast arg15
  let c304 : Index := 304#32
  ![1, v652.toNat, 304]
def k0_off629 (k0_t3 : Fin k0_t3_loop.trips) : Fin 3 → Nat :=
  let c1_i32_663 : BitVec 32 := 1#32
  let v655 : Index := Scalar.indexCast c1_i32_663
  let c0_i32_348 : BitVec 32 := 0#32
  let c1_i32_350 : BitVec 32 := 1#32
  let arg15 : BitVec 32 := Scf.iv c0_i32_348 c1_i32_350 k0_t3
  let v656 : Index := Scalar.indexCast arg15
  let c320 : Index := 320#32
  ![1, v656.toNat, 320]
def k0_off630 (k0_t3 : Fin k0_t3_loop.trips) : Fin 3 → Nat :=
  let c1_i32_664 : BitVec 32 := 1#32
  let v659 : Index := Scalar.indexCast c1_i32_664
  let c0_i32_348 : BitVec 32 := 0#32
  let c1_i32_350 : BitVec 32 := 1#32
  let arg15 : BitVec 32 := Scf.iv c0_i32_348 c1_i32_350 k0_t3
  let v660 : Index := Scalar.indexCast arg15
  let c336 : Index := 336#32
  ![1, v660.toNat, 336]
def k0_off631 (k0_t3 : Fin k0_t3_loop.trips) : Fin 3 → Nat :=
  let c1_i32_665 : BitVec 32 := 1#32
  let v663 : Index := Scalar.indexCast c1_i32_665
  let c0_i32_348 : BitVec 32 := 0#32
  let c1_i32_350 : BitVec 32 := 1#32
  let arg15 : BitVec 32 := Scf.iv c0_i32_348 c1_i32_350 k0_t3
  let v664 : Index := Scalar.indexCast arg15
  let c352 : Index := 352#32
  ![1, v664.toNat, 352]
def k0_off632 (k0_t3 : Fin k0_t3_loop.trips) : Fin 3 → Nat :=
  let c1_i32_666 : BitVec 32 := 1#32
  let v667 : Index := Scalar.indexCast c1_i32_666
  let c0_i32_348 : BitVec 32 := 0#32
  let c1_i32_350 : BitVec 32 := 1#32
  let arg15 : BitVec 32 := Scf.iv c0_i32_348 c1_i32_350 k0_t3
  let v668 : Index := Scalar.indexCast arg15
  let c368 : Index := 368#32
  ![1, v668.toNat, 368]
def k0_off633 (k0_t3 : Fin k0_t3_loop.trips) : Fin 3 → Nat :=
  let c1_i32_667 : BitVec 32 := 1#32
  let v671 : Index := Scalar.indexCast c1_i32_667
  let c0_i32_348 : BitVec 32 := 0#32
  let c1_i32_350 : BitVec 32 := 1#32
  let arg15 : BitVec 32 := Scf.iv c0_i32_348 c1_i32_350 k0_t3
  let v672 : Index := Scalar.indexCast arg15
  let c384 : Index := 384#32
  ![1, v672.toNat, 384]
def k0_off634 (k0_t3 : Fin k0_t3_loop.trips) : Fin 3 → Nat :=
  let c1_i32_668 : BitVec 32 := 1#32
  let v675 : Index := Scalar.indexCast c1_i32_668
  let c0_i32_348 : BitVec 32 := 0#32
  let c1_i32_350 : BitVec 32 := 1#32
  let arg15 : BitVec 32 := Scf.iv c0_i32_348 c1_i32_350 k0_t3
  let v676 : Index := Scalar.indexCast arg15
  let c400 : Index := 400#32
  ![1, v676.toNat, 400]
def k0_off635 (k0_t3 : Fin k0_t3_loop.trips) : Fin 3 → Nat :=
  let c1_i32_669 : BitVec 32 := 1#32
  let v679 : Index := Scalar.indexCast c1_i32_669
  let c0_i32_348 : BitVec 32 := 0#32
  let c1_i32_350 : BitVec 32 := 1#32
  let arg15 : BitVec 32 := Scf.iv c0_i32_348 c1_i32_350 k0_t3
  let v680 : Index := Scalar.indexCast arg15
  let c416 : Index := 416#32
  ![1, v680.toNat, 416]
def k0_off636 (k0_t3 : Fin k0_t3_loop.trips) : Fin 3 → Nat :=
  let c1_i32_670 : BitVec 32 := 1#32
  let v683 : Index := Scalar.indexCast c1_i32_670
  let c0_i32_348 : BitVec 32 := 0#32
  let c1_i32_350 : BitVec 32 := 1#32
  let arg15 : BitVec 32 := Scf.iv c0_i32_348 c1_i32_350 k0_t3
  let v684 : Index := Scalar.indexCast arg15
  let c432 : Index := 432#32
  ![1, v684.toNat, 432]
def k0_off637 (k0_t3 : Fin k0_t3_loop.trips) : Fin 3 → Nat :=
  let c1_i32_671 : BitVec 32 := 1#32
  let v687 : Index := Scalar.indexCast c1_i32_671
  let c0_i32_348 : BitVec 32 := 0#32
  let c1_i32_350 : BitVec 32 := 1#32
  let arg15 : BitVec 32 := Scf.iv c0_i32_348 c1_i32_350 k0_t3
  let v688 : Index := Scalar.indexCast arg15
  let c448 : Index := 448#32
  ![1, v688.toNat, 448]
def k0_off638 (k0_t3 : Fin k0_t3_loop.trips) : Fin 3 → Nat :=
  let c1_i32_672 : BitVec 32 := 1#32
  let v691 : Index := Scalar.indexCast c1_i32_672
  let c0_i32_348 : BitVec 32 := 0#32
  let c1_i32_350 : BitVec 32 := 1#32
  let arg15 : BitVec 32 := Scf.iv c0_i32_348 c1_i32_350 k0_t3
  let v692 : Index := Scalar.indexCast arg15
  let c464 : Index := 464#32
  ![1, v692.toNat, 464]
def k0_off639 (k0_t3 : Fin k0_t3_loop.trips) : Fin 3 → Nat :=
  let c1_i32_673 : BitVec 32 := 1#32
  let v695 : Index := Scalar.indexCast c1_i32_673
  let c0_i32_348 : BitVec 32 := 0#32
  let c1_i32_350 : BitVec 32 := 1#32
  let arg15 : BitVec 32 := Scf.iv c0_i32_348 c1_i32_350 k0_t3
  let v696 : Index := Scalar.indexCast arg15
  let c480 : Index := 480#32
  ![1, v696.toNat, 480]
def k0_off640 (k0_t3 : Fin k0_t3_loop.trips) : Fin 3 → Nat :=
  let c1_i32_674 : BitVec 32 := 1#32
  let v699 : Index := Scalar.indexCast c1_i32_674
  let c0_i32_348 : BitVec 32 := 0#32
  let c1_i32_350 : BitVec 32 := 1#32
  let arg15 : BitVec 32 := Scf.iv c0_i32_348 c1_i32_350 k0_t3
  let v700 : Index := Scalar.indexCast arg15
  let c496 : Index := 496#32
  ![1, v700.toNat, 496]
def k0_off641 (k0_t3 : Fin k0_t3_loop.trips) : Fin 4 → Nat :=
  let c1_i32_675 : BitVec 32 := 1#32
  let v703 : Index := Scalar.indexCast c1_i32_675
  let c0_i32_676 : BitVec 32 := 0#32
  let v704 : Index := Scalar.indexCast c0_i32_676
  let c0_i32_348 : BitVec 32 := 0#32
  let c1_i32_350 : BitVec 32 := 1#32
  let arg15 : BitVec 32 := Scf.iv c0_i32_348 c1_i32_350 k0_t3
  let v705 : Index := Scalar.indexCast arg15
  let c0_677 : Index := 0#32
  ![1, 0, v705.toNat, 0]
def k0_off642 (k0_t3 : Fin k0_t3_loop.trips) : Fin 4 → Nat :=
  let c1_i32_678 : BitVec 32 := 1#32
  let v709 : Index := Scalar.indexCast c1_i32_678
  let c0_i32_679 : BitVec 32 := 0#32
  let v710 : Index := Scalar.indexCast c0_i32_679
  let c0_i32_348 : BitVec 32 := 0#32
  let c1_i32_350 : BitVec 32 := 1#32
  let arg15 : BitVec 32 := Scf.iv c0_i32_348 c1_i32_350 k0_t3
  let v711 : Index := Scalar.indexCast arg15
  let c0_680 : Index := 0#32
  ![1, 0, v711.toNat, 0]
def k0_off643 (k0_t3 : Fin k0_t3_loop.trips) : Fin 4 → Nat :=
  let c1_i32_681 : BitVec 32 := 1#32
  let v715 : Index := Scalar.indexCast c1_i32_681
  let c0_i32_682 : BitVec 32 := 0#32
  let v716 : Index := Scalar.indexCast c0_i32_682
  let c0_i32_348 : BitVec 32 := 0#32
  let c1_i32_350 : BitVec 32 := 1#32
  let arg15 : BitVec 32 := Scf.iv c0_i32_348 c1_i32_350 k0_t3
  let v717 : Index := Scalar.indexCast arg15
  let c16_683 : Index := 16#32
  ![1, 0, v717.toNat, 16]
def k0_off644 (k0_t3 : Fin k0_t3_loop.trips) : Fin 4 → Nat :=
  let c1_i32_684 : BitVec 32 := 1#32
  let v721 : Index := Scalar.indexCast c1_i32_684
  let c0_i32_685 : BitVec 32 := 0#32
  let v722 : Index := Scalar.indexCast c0_i32_685
  let c0_i32_348 : BitVec 32 := 0#32
  let c1_i32_350 : BitVec 32 := 1#32
  let arg15 : BitVec 32 := Scf.iv c0_i32_348 c1_i32_350 k0_t3
  let v723 : Index := Scalar.indexCast arg15
  let c16_686 : Index := 16#32
  ![1, 0, v723.toNat, 16]
def k0_off645 (k0_t3 : Fin k0_t3_loop.trips) : Fin 4 → Nat :=
  let c1_i32_687 : BitVec 32 := 1#32
  let v727 : Index := Scalar.indexCast c1_i32_687
  let c0_i32_688 : BitVec 32 := 0#32
  let v728 : Index := Scalar.indexCast c0_i32_688
  let c0_i32_348 : BitVec 32 := 0#32
  let c1_i32_350 : BitVec 32 := 1#32
  let arg15 : BitVec 32 := Scf.iv c0_i32_348 c1_i32_350 k0_t3
  let v729 : Index := Scalar.indexCast arg15
  let c32_689 : Index := 32#32
  ![1, 0, v729.toNat, 32]
def k0_off646 (k0_t3 : Fin k0_t3_loop.trips) : Fin 4 → Nat :=
  let c1_i32_690 : BitVec 32 := 1#32
  let v733 : Index := Scalar.indexCast c1_i32_690
  let c0_i32_691 : BitVec 32 := 0#32
  let v734 : Index := Scalar.indexCast c0_i32_691
  let c0_i32_348 : BitVec 32 := 0#32
  let c1_i32_350 : BitVec 32 := 1#32
  let arg15 : BitVec 32 := Scf.iv c0_i32_348 c1_i32_350 k0_t3
  let v735 : Index := Scalar.indexCast arg15
  let c32_692 : Index := 32#32
  ![1, 0, v735.toNat, 32]
def k0_off647 (k0_t3 : Fin k0_t3_loop.trips) : Fin 4 → Nat :=
  let c1_i32_693 : BitVec 32 := 1#32
  let v739 : Index := Scalar.indexCast c1_i32_693
  let c0_i32_694 : BitVec 32 := 0#32
  let v740 : Index := Scalar.indexCast c0_i32_694
  let c0_i32_348 : BitVec 32 := 0#32
  let c1_i32_350 : BitVec 32 := 1#32
  let arg15 : BitVec 32 := Scf.iv c0_i32_348 c1_i32_350 k0_t3
  let v741 : Index := Scalar.indexCast arg15
  let c48_695 : Index := 48#32
  ![1, 0, v741.toNat, 48]
def k0_off648 (k0_t3 : Fin k0_t3_loop.trips) : Fin 4 → Nat :=
  let c1_i32_696 : BitVec 32 := 1#32
  let v745 : Index := Scalar.indexCast c1_i32_696
  let c0_i32_697 : BitVec 32 := 0#32
  let v746 : Index := Scalar.indexCast c0_i32_697
  let c0_i32_348 : BitVec 32 := 0#32
  let c1_i32_350 : BitVec 32 := 1#32
  let arg15 : BitVec 32 := Scf.iv c0_i32_348 c1_i32_350 k0_t3
  let v747 : Index := Scalar.indexCast arg15
  let c48_698 : Index := 48#32
  ![1, 0, v747.toNat, 48]
def k0_off649 (k0_t3 : Fin k0_t3_loop.trips) : Fin 4 → Nat :=
  let c1_i32_699 : BitVec 32 := 1#32
  let v751 : Index := Scalar.indexCast c1_i32_699
  let c0_i32_700 : BitVec 32 := 0#32
  let v752 : Index := Scalar.indexCast c0_i32_700
  let c0_i32_348 : BitVec 32 := 0#32
  let c1_i32_350 : BitVec 32 := 1#32
  let arg15 : BitVec 32 := Scf.iv c0_i32_348 c1_i32_350 k0_t3
  let v753 : Index := Scalar.indexCast arg15
  let c64_701 : Index := 64#32
  ![1, 0, v753.toNat, 64]
def k0_off650 (k0_t3 : Fin k0_t3_loop.trips) : Fin 4 → Nat :=
  let c1_i32_702 : BitVec 32 := 1#32
  let v757 : Index := Scalar.indexCast c1_i32_702
  let c0_i32_703 : BitVec 32 := 0#32
  let v758 : Index := Scalar.indexCast c0_i32_703
  let c0_i32_348 : BitVec 32 := 0#32
  let c1_i32_350 : BitVec 32 := 1#32
  let arg15 : BitVec 32 := Scf.iv c0_i32_348 c1_i32_350 k0_t3
  let v759 : Index := Scalar.indexCast arg15
  let c64_704 : Index := 64#32
  ![1, 0, v759.toNat, 64]
def k0_off651 (k0_t3 : Fin k0_t3_loop.trips) : Fin 4 → Nat :=
  let c1_i32_705 : BitVec 32 := 1#32
  let v763 : Index := Scalar.indexCast c1_i32_705
  let c0_i32_706 : BitVec 32 := 0#32
  let v764 : Index := Scalar.indexCast c0_i32_706
  let c0_i32_348 : BitVec 32 := 0#32
  let c1_i32_350 : BitVec 32 := 1#32
  let arg15 : BitVec 32 := Scf.iv c0_i32_348 c1_i32_350 k0_t3
  let v765 : Index := Scalar.indexCast arg15
  let c80_707 : Index := 80#32
  ![1, 0, v765.toNat, 80]
def k0_off652 (k0_t3 : Fin k0_t3_loop.trips) : Fin 4 → Nat :=
  let c1_i32_708 : BitVec 32 := 1#32
  let v769 : Index := Scalar.indexCast c1_i32_708
  let c0_i32_709 : BitVec 32 := 0#32
  let v770 : Index := Scalar.indexCast c0_i32_709
  let c0_i32_348 : BitVec 32 := 0#32
  let c1_i32_350 : BitVec 32 := 1#32
  let arg15 : BitVec 32 := Scf.iv c0_i32_348 c1_i32_350 k0_t3
  let v771 : Index := Scalar.indexCast arg15
  let c80_710 : Index := 80#32
  ![1, 0, v771.toNat, 80]
def k0_off653 (k0_t3 : Fin k0_t3_loop.trips) : Fin 4 → Nat :=
  let c1_i32_711 : BitVec 32 := 1#32
  let v775 : Index := Scalar.indexCast c1_i32_711
  let c0_i32_712 : BitVec 32 := 0#32
  let v776 : Index := Scalar.indexCast c0_i32_712
  let c0_i32_348 : BitVec 32 := 0#32
  let c1_i32_350 : BitVec 32 := 1#32
  let arg15 : BitVec 32 := Scf.iv c0_i32_348 c1_i32_350 k0_t3
  let v777 : Index := Scalar.indexCast arg15
  let c96_713 : Index := 96#32
  ![1, 0, v777.toNat, 96]
def k0_off654 (k0_t3 : Fin k0_t3_loop.trips) : Fin 4 → Nat :=
  let c1_i32_714 : BitVec 32 := 1#32
  let v781 : Index := Scalar.indexCast c1_i32_714
  let c0_i32_715 : BitVec 32 := 0#32
  let v782 : Index := Scalar.indexCast c0_i32_715
  let c0_i32_348 : BitVec 32 := 0#32
  let c1_i32_350 : BitVec 32 := 1#32
  let arg15 : BitVec 32 := Scf.iv c0_i32_348 c1_i32_350 k0_t3
  let v783 : Index := Scalar.indexCast arg15
  let c96_716 : Index := 96#32
  ![1, 0, v783.toNat, 96]
def k0_off655 (k0_t3 : Fin k0_t3_loop.trips) : Fin 4 → Nat :=
  let c1_i32_717 : BitVec 32 := 1#32
  let v787 : Index := Scalar.indexCast c1_i32_717
  let c0_i32_718 : BitVec 32 := 0#32
  let v788 : Index := Scalar.indexCast c0_i32_718
  let c0_i32_348 : BitVec 32 := 0#32
  let c1_i32_350 : BitVec 32 := 1#32
  let arg15 : BitVec 32 := Scf.iv c0_i32_348 c1_i32_350 k0_t3
  let v789 : Index := Scalar.indexCast arg15
  let c112_719 : Index := 112#32
  ![1, 0, v789.toNat, 112]
def k0_off656 (k0_t3 : Fin k0_t3_loop.trips) : Fin 4 → Nat :=
  let c1_i32_720 : BitVec 32 := 1#32
  let v793 : Index := Scalar.indexCast c1_i32_720
  let c0_i32_721 : BitVec 32 := 0#32
  let v794 : Index := Scalar.indexCast c0_i32_721
  let c0_i32_348 : BitVec 32 := 0#32
  let c1_i32_350 : BitVec 32 := 1#32
  let arg15 : BitVec 32 := Scf.iv c0_i32_348 c1_i32_350 k0_t3
  let v795 : Index := Scalar.indexCast arg15
  let c112_722 : Index := 112#32
  ![1, 0, v795.toNat, 112]
def k0_off657 (k0_t3 : Fin k0_t3_loop.trips) : Fin 4 → Nat :=
  let c1_i32_723 : BitVec 32 := 1#32
  let v799 : Index := Scalar.indexCast c1_i32_723
  let c0_i32_724 : BitVec 32 := 0#32
  let v800 : Index := Scalar.indexCast c0_i32_724
  let c0_i32_348 : BitVec 32 := 0#32
  let c1_i32_350 : BitVec 32 := 1#32
  let arg15 : BitVec 32 := Scf.iv c0_i32_348 c1_i32_350 k0_t3
  let v801 : Index := Scalar.indexCast arg15
  let c128_725 : Index := 128#32
  ![1, 0, v801.toNat, 128]
def k0_off658 (k0_t3 : Fin k0_t3_loop.trips) : Fin 4 → Nat :=
  let c1_i32_726 : BitVec 32 := 1#32
  let v805 : Index := Scalar.indexCast c1_i32_726
  let c0_i32_727 : BitVec 32 := 0#32
  let v806 : Index := Scalar.indexCast c0_i32_727
  let c0_i32_348 : BitVec 32 := 0#32
  let c1_i32_350 : BitVec 32 := 1#32
  let arg15 : BitVec 32 := Scf.iv c0_i32_348 c1_i32_350 k0_t3
  let v807 : Index := Scalar.indexCast arg15
  let c128_728 : Index := 128#32
  ![1, 0, v807.toNat, 128]
def k0_off659 (k0_t3 : Fin k0_t3_loop.trips) : Fin 4 → Nat :=
  let c1_i32_729 : BitVec 32 := 1#32
  let v811 : Index := Scalar.indexCast c1_i32_729
  let c0_i32_730 : BitVec 32 := 0#32
  let v812 : Index := Scalar.indexCast c0_i32_730
  let c0_i32_348 : BitVec 32 := 0#32
  let c1_i32_350 : BitVec 32 := 1#32
  let arg15 : BitVec 32 := Scf.iv c0_i32_348 c1_i32_350 k0_t3
  let v813 : Index := Scalar.indexCast arg15
  let c144_731 : Index := 144#32
  ![1, 0, v813.toNat, 144]
def k0_off660 (k0_t3 : Fin k0_t3_loop.trips) : Fin 4 → Nat :=
  let c1_i32_732 : BitVec 32 := 1#32
  let v817 : Index := Scalar.indexCast c1_i32_732
  let c0_i32_733 : BitVec 32 := 0#32
  let v818 : Index := Scalar.indexCast c0_i32_733
  let c0_i32_348 : BitVec 32 := 0#32
  let c1_i32_350 : BitVec 32 := 1#32
  let arg15 : BitVec 32 := Scf.iv c0_i32_348 c1_i32_350 k0_t3
  let v819 : Index := Scalar.indexCast arg15
  let c144_734 : Index := 144#32
  ![1, 0, v819.toNat, 144]
def k0_off661 (k0_t3 : Fin k0_t3_loop.trips) : Fin 4 → Nat :=
  let c1_i32_735 : BitVec 32 := 1#32
  let v823 : Index := Scalar.indexCast c1_i32_735
  let c0_i32_736 : BitVec 32 := 0#32
  let v824 : Index := Scalar.indexCast c0_i32_736
  let c0_i32_348 : BitVec 32 := 0#32
  let c1_i32_350 : BitVec 32 := 1#32
  let arg15 : BitVec 32 := Scf.iv c0_i32_348 c1_i32_350 k0_t3
  let v825 : Index := Scalar.indexCast arg15
  let c160_737 : Index := 160#32
  ![1, 0, v825.toNat, 160]
def k0_off662 (k0_t3 : Fin k0_t3_loop.trips) : Fin 4 → Nat :=
  let c1_i32_738 : BitVec 32 := 1#32
  let v829 : Index := Scalar.indexCast c1_i32_738
  let c0_i32_739 : BitVec 32 := 0#32
  let v830 : Index := Scalar.indexCast c0_i32_739
  let c0_i32_348 : BitVec 32 := 0#32
  let c1_i32_350 : BitVec 32 := 1#32
  let arg15 : BitVec 32 := Scf.iv c0_i32_348 c1_i32_350 k0_t3
  let v831 : Index := Scalar.indexCast arg15
  let c160_740 : Index := 160#32
  ![1, 0, v831.toNat, 160]
def k0_off663 (k0_t3 : Fin k0_t3_loop.trips) : Fin 4 → Nat :=
  let c1_i32_741 : BitVec 32 := 1#32
  let v835 : Index := Scalar.indexCast c1_i32_741
  let c0_i32_742 : BitVec 32 := 0#32
  let v836 : Index := Scalar.indexCast c0_i32_742
  let c0_i32_348 : BitVec 32 := 0#32
  let c1_i32_350 : BitVec 32 := 1#32
  let arg15 : BitVec 32 := Scf.iv c0_i32_348 c1_i32_350 k0_t3
  let v837 : Index := Scalar.indexCast arg15
  let c176_743 : Index := 176#32
  ![1, 0, v837.toNat, 176]
def k0_off664 (k0_t3 : Fin k0_t3_loop.trips) : Fin 4 → Nat :=
  let c1_i32_744 : BitVec 32 := 1#32
  let v841 : Index := Scalar.indexCast c1_i32_744
  let c0_i32_745 : BitVec 32 := 0#32
  let v842 : Index := Scalar.indexCast c0_i32_745
  let c0_i32_348 : BitVec 32 := 0#32
  let c1_i32_350 : BitVec 32 := 1#32
  let arg15 : BitVec 32 := Scf.iv c0_i32_348 c1_i32_350 k0_t3
  let v843 : Index := Scalar.indexCast arg15
  let c176_746 : Index := 176#32
  ![1, 0, v843.toNat, 176]
def k0_off665 (k0_t3 : Fin k0_t3_loop.trips) : Fin 4 → Nat :=
  let c1_i32_747 : BitVec 32 := 1#32
  let v847 : Index := Scalar.indexCast c1_i32_747
  let c0_i32_748 : BitVec 32 := 0#32
  let v848 : Index := Scalar.indexCast c0_i32_748
  let c0_i32_348 : BitVec 32 := 0#32
  let c1_i32_350 : BitVec 32 := 1#32
  let arg15 : BitVec 32 := Scf.iv c0_i32_348 c1_i32_350 k0_t3
  let v849 : Index := Scalar.indexCast arg15
  let c192_749 : Index := 192#32
  ![1, 0, v849.toNat, 192]
def k0_off666 (k0_t3 : Fin k0_t3_loop.trips) : Fin 4 → Nat :=
  let c1_i32_750 : BitVec 32 := 1#32
  let v853 : Index := Scalar.indexCast c1_i32_750
  let c0_i32_751 : BitVec 32 := 0#32
  let v854 : Index := Scalar.indexCast c0_i32_751
  let c0_i32_348 : BitVec 32 := 0#32
  let c1_i32_350 : BitVec 32 := 1#32
  let arg15 : BitVec 32 := Scf.iv c0_i32_348 c1_i32_350 k0_t3
  let v855 : Index := Scalar.indexCast arg15
  let c192_752 : Index := 192#32
  ![1, 0, v855.toNat, 192]
def k0_off667 (k0_t3 : Fin k0_t3_loop.trips) : Fin 4 → Nat :=
  let c1_i32_753 : BitVec 32 := 1#32
  let v859 : Index := Scalar.indexCast c1_i32_753
  let c0_i32_754 : BitVec 32 := 0#32
  let v860 : Index := Scalar.indexCast c0_i32_754
  let c0_i32_348 : BitVec 32 := 0#32
  let c1_i32_350 : BitVec 32 := 1#32
  let arg15 : BitVec 32 := Scf.iv c0_i32_348 c1_i32_350 k0_t3
  let v861 : Index := Scalar.indexCast arg15
  let c208_755 : Index := 208#32
  ![1, 0, v861.toNat, 208]
def k0_off668 (k0_t3 : Fin k0_t3_loop.trips) : Fin 4 → Nat :=
  let c1_i32_756 : BitVec 32 := 1#32
  let v865 : Index := Scalar.indexCast c1_i32_756
  let c0_i32_757 : BitVec 32 := 0#32
  let v866 : Index := Scalar.indexCast c0_i32_757
  let c0_i32_348 : BitVec 32 := 0#32
  let c1_i32_350 : BitVec 32 := 1#32
  let arg15 : BitVec 32 := Scf.iv c0_i32_348 c1_i32_350 k0_t3
  let v867 : Index := Scalar.indexCast arg15
  let c208_758 : Index := 208#32
  ![1, 0, v867.toNat, 208]
def k0_off669 (k0_t3 : Fin k0_t3_loop.trips) : Fin 4 → Nat :=
  let c1_i32_759 : BitVec 32 := 1#32
  let v871 : Index := Scalar.indexCast c1_i32_759
  let c0_i32_760 : BitVec 32 := 0#32
  let v872 : Index := Scalar.indexCast c0_i32_760
  let c0_i32_348 : BitVec 32 := 0#32
  let c1_i32_350 : BitVec 32 := 1#32
  let arg15 : BitVec 32 := Scf.iv c0_i32_348 c1_i32_350 k0_t3
  let v873 : Index := Scalar.indexCast arg15
  let c224_761 : Index := 224#32
  ![1, 0, v873.toNat, 224]
def k0_off670 (k0_t3 : Fin k0_t3_loop.trips) : Fin 4 → Nat :=
  let c1_i32_762 : BitVec 32 := 1#32
  let v877 : Index := Scalar.indexCast c1_i32_762
  let c0_i32_763 : BitVec 32 := 0#32
  let v878 : Index := Scalar.indexCast c0_i32_763
  let c0_i32_348 : BitVec 32 := 0#32
  let c1_i32_350 : BitVec 32 := 1#32
  let arg15 : BitVec 32 := Scf.iv c0_i32_348 c1_i32_350 k0_t3
  let v879 : Index := Scalar.indexCast arg15
  let c224_764 : Index := 224#32
  ![1, 0, v879.toNat, 224]
def k0_off671 (k0_t3 : Fin k0_t3_loop.trips) : Fin 4 → Nat :=
  let c1_i32_765 : BitVec 32 := 1#32
  let v883 : Index := Scalar.indexCast c1_i32_765
  let c0_i32_766 : BitVec 32 := 0#32
  let v884 : Index := Scalar.indexCast c0_i32_766
  let c0_i32_348 : BitVec 32 := 0#32
  let c1_i32_350 : BitVec 32 := 1#32
  let arg15 : BitVec 32 := Scf.iv c0_i32_348 c1_i32_350 k0_t3
  let v885 : Index := Scalar.indexCast arg15
  let c240_767 : Index := 240#32
  ![1, 0, v885.toNat, 240]
def k0_off672 (k0_t3 : Fin k0_t3_loop.trips) : Fin 4 → Nat :=
  let c1_i32_768 : BitVec 32 := 1#32
  let v889 : Index := Scalar.indexCast c1_i32_768
  let c0_i32_769 : BitVec 32 := 0#32
  let v890 : Index := Scalar.indexCast c0_i32_769
  let c0_i32_348 : BitVec 32 := 0#32
  let c1_i32_350 : BitVec 32 := 1#32
  let arg15 : BitVec 32 := Scf.iv c0_i32_348 c1_i32_350 k0_t3
  let v891 : Index := Scalar.indexCast arg15
  let c240_770 : Index := 240#32
  ![1, 0, v891.toNat, 240]
def k0_off673 (k0_t3 : Fin k0_t3_loop.trips) : Fin 4 → Nat :=
  let c1_i32_771 : BitVec 32 := 1#32
  let v895 : Index := Scalar.indexCast c1_i32_771
  let c0_i32_772 : BitVec 32 := 0#32
  let v896 : Index := Scalar.indexCast c0_i32_772
  let c0_i32_348 : BitVec 32 := 0#32
  let c1_i32_350 : BitVec 32 := 1#32
  let arg15 : BitVec 32 := Scf.iv c0_i32_348 c1_i32_350 k0_t3
  let v897 : Index := Scalar.indexCast arg15
  let c256_773 : Index := 256#32
  ![1, 0, v897.toNat, 256]
def k0_off674 (k0_t3 : Fin k0_t3_loop.trips) : Fin 4 → Nat :=
  let c1_i32_774 : BitVec 32 := 1#32
  let v901 : Index := Scalar.indexCast c1_i32_774
  let c0_i32_775 : BitVec 32 := 0#32
  let v902 : Index := Scalar.indexCast c0_i32_775
  let c0_i32_348 : BitVec 32 := 0#32
  let c1_i32_350 : BitVec 32 := 1#32
  let arg15 : BitVec 32 := Scf.iv c0_i32_348 c1_i32_350 k0_t3
  let v903 : Index := Scalar.indexCast arg15
  let c256_776 : Index := 256#32
  ![1, 0, v903.toNat, 256]
def k0_off675 (k0_t3 : Fin k0_t3_loop.trips) : Fin 4 → Nat :=
  let c1_i32_777 : BitVec 32 := 1#32
  let v907 : Index := Scalar.indexCast c1_i32_777
  let c0_i32_778 : BitVec 32 := 0#32
  let v908 : Index := Scalar.indexCast c0_i32_778
  let c0_i32_348 : BitVec 32 := 0#32
  let c1_i32_350 : BitVec 32 := 1#32
  let arg15 : BitVec 32 := Scf.iv c0_i32_348 c1_i32_350 k0_t3
  let v909 : Index := Scalar.indexCast arg15
  let c272_779 : Index := 272#32
  ![1, 0, v909.toNat, 272]
def k0_off676 (k0_t3 : Fin k0_t3_loop.trips) : Fin 4 → Nat :=
  let c1_i32_780 : BitVec 32 := 1#32
  let v913 : Index := Scalar.indexCast c1_i32_780
  let c0_i32_781 : BitVec 32 := 0#32
  let v914 : Index := Scalar.indexCast c0_i32_781
  let c0_i32_348 : BitVec 32 := 0#32
  let c1_i32_350 : BitVec 32 := 1#32
  let arg15 : BitVec 32 := Scf.iv c0_i32_348 c1_i32_350 k0_t3
  let v915 : Index := Scalar.indexCast arg15
  let c272_782 : Index := 272#32
  ![1, 0, v915.toNat, 272]
def k0_off677 (k0_t3 : Fin k0_t3_loop.trips) : Fin 4 → Nat :=
  let c1_i32_783 : BitVec 32 := 1#32
  let v919 : Index := Scalar.indexCast c1_i32_783
  let c0_i32_784 : BitVec 32 := 0#32
  let v920 : Index := Scalar.indexCast c0_i32_784
  let c0_i32_348 : BitVec 32 := 0#32
  let c1_i32_350 : BitVec 32 := 1#32
  let arg15 : BitVec 32 := Scf.iv c0_i32_348 c1_i32_350 k0_t3
  let v921 : Index := Scalar.indexCast arg15
  let c288_785 : Index := 288#32
  ![1, 0, v921.toNat, 288]
def k0_off678 (k0_t3 : Fin k0_t3_loop.trips) : Fin 4 → Nat :=
  let c1_i32_786 : BitVec 32 := 1#32
  let v925 : Index := Scalar.indexCast c1_i32_786
  let c0_i32_787 : BitVec 32 := 0#32
  let v926 : Index := Scalar.indexCast c0_i32_787
  let c0_i32_348 : BitVec 32 := 0#32
  let c1_i32_350 : BitVec 32 := 1#32
  let arg15 : BitVec 32 := Scf.iv c0_i32_348 c1_i32_350 k0_t3
  let v927 : Index := Scalar.indexCast arg15
  let c288_788 : Index := 288#32
  ![1, 0, v927.toNat, 288]
def k0_off679 (k0_t3 : Fin k0_t3_loop.trips) : Fin 4 → Nat :=
  let c1_i32_789 : BitVec 32 := 1#32
  let v931 : Index := Scalar.indexCast c1_i32_789
  let c0_i32_790 : BitVec 32 := 0#32
  let v932 : Index := Scalar.indexCast c0_i32_790
  let c0_i32_348 : BitVec 32 := 0#32
  let c1_i32_350 : BitVec 32 := 1#32
  let arg15 : BitVec 32 := Scf.iv c0_i32_348 c1_i32_350 k0_t3
  let v933 : Index := Scalar.indexCast arg15
  let c304_791 : Index := 304#32
  ![1, 0, v933.toNat, 304]
def k0_off680 (k0_t3 : Fin k0_t3_loop.trips) : Fin 4 → Nat :=
  let c1_i32_792 : BitVec 32 := 1#32
  let v937 : Index := Scalar.indexCast c1_i32_792
  let c0_i32_793 : BitVec 32 := 0#32
  let v938 : Index := Scalar.indexCast c0_i32_793
  let c0_i32_348 : BitVec 32 := 0#32
  let c1_i32_350 : BitVec 32 := 1#32
  let arg15 : BitVec 32 := Scf.iv c0_i32_348 c1_i32_350 k0_t3
  let v939 : Index := Scalar.indexCast arg15
  let c304_794 : Index := 304#32
  ![1, 0, v939.toNat, 304]
def k0_off681 (k0_t3 : Fin k0_t3_loop.trips) : Fin 4 → Nat :=
  let c1_i32_795 : BitVec 32 := 1#32
  let v943 : Index := Scalar.indexCast c1_i32_795
  let c0_i32_796 : BitVec 32 := 0#32
  let v944 : Index := Scalar.indexCast c0_i32_796
  let c0_i32_348 : BitVec 32 := 0#32
  let c1_i32_350 : BitVec 32 := 1#32
  let arg15 : BitVec 32 := Scf.iv c0_i32_348 c1_i32_350 k0_t3
  let v945 : Index := Scalar.indexCast arg15
  let c320_797 : Index := 320#32
  ![1, 0, v945.toNat, 320]
def k0_off682 (k0_t3 : Fin k0_t3_loop.trips) : Fin 4 → Nat :=
  let c1_i32_798 : BitVec 32 := 1#32
  let v949 : Index := Scalar.indexCast c1_i32_798
  let c0_i32_799 : BitVec 32 := 0#32
  let v950 : Index := Scalar.indexCast c0_i32_799
  let c0_i32_348 : BitVec 32 := 0#32
  let c1_i32_350 : BitVec 32 := 1#32
  let arg15 : BitVec 32 := Scf.iv c0_i32_348 c1_i32_350 k0_t3
  let v951 : Index := Scalar.indexCast arg15
  let c320_800 : Index := 320#32
  ![1, 0, v951.toNat, 320]
def k0_off683 (k0_t3 : Fin k0_t3_loop.trips) : Fin 4 → Nat :=
  let c1_i32_801 : BitVec 32 := 1#32
  let v955 : Index := Scalar.indexCast c1_i32_801
  let c0_i32_802 : BitVec 32 := 0#32
  let v956 : Index := Scalar.indexCast c0_i32_802
  let c0_i32_348 : BitVec 32 := 0#32
  let c1_i32_350 : BitVec 32 := 1#32
  let arg15 : BitVec 32 := Scf.iv c0_i32_348 c1_i32_350 k0_t3
  let v957 : Index := Scalar.indexCast arg15
  let c336_803 : Index := 336#32
  ![1, 0, v957.toNat, 336]
def k0_off684 (k0_t3 : Fin k0_t3_loop.trips) : Fin 4 → Nat :=
  let c1_i32_804 : BitVec 32 := 1#32
  let v961 : Index := Scalar.indexCast c1_i32_804
  let c0_i32_805 : BitVec 32 := 0#32
  let v962 : Index := Scalar.indexCast c0_i32_805
  let c0_i32_348 : BitVec 32 := 0#32
  let c1_i32_350 : BitVec 32 := 1#32
  let arg15 : BitVec 32 := Scf.iv c0_i32_348 c1_i32_350 k0_t3
  let v963 : Index := Scalar.indexCast arg15
  let c336_806 : Index := 336#32
  ![1, 0, v963.toNat, 336]
def k0_off685 (k0_t3 : Fin k0_t3_loop.trips) : Fin 4 → Nat :=
  let c1_i32_807 : BitVec 32 := 1#32
  let v967 : Index := Scalar.indexCast c1_i32_807
  let c0_i32_808 : BitVec 32 := 0#32
  let v968 : Index := Scalar.indexCast c0_i32_808
  let c0_i32_348 : BitVec 32 := 0#32
  let c1_i32_350 : BitVec 32 := 1#32
  let arg15 : BitVec 32 := Scf.iv c0_i32_348 c1_i32_350 k0_t3
  let v969 : Index := Scalar.indexCast arg15
  let c352_809 : Index := 352#32
  ![1, 0, v969.toNat, 352]
def k0_off686 (k0_t3 : Fin k0_t3_loop.trips) : Fin 4 → Nat :=
  let c1_i32_810 : BitVec 32 := 1#32
  let v973 : Index := Scalar.indexCast c1_i32_810
  let c0_i32_811 : BitVec 32 := 0#32
  let v974 : Index := Scalar.indexCast c0_i32_811
  let c0_i32_348 : BitVec 32 := 0#32
  let c1_i32_350 : BitVec 32 := 1#32
  let arg15 : BitVec 32 := Scf.iv c0_i32_348 c1_i32_350 k0_t3
  let v975 : Index := Scalar.indexCast arg15
  let c352_812 : Index := 352#32
  ![1, 0, v975.toNat, 352]
def k0_off687 (k0_t3 : Fin k0_t3_loop.trips) : Fin 4 → Nat :=
  let c1_i32_813 : BitVec 32 := 1#32
  let v979 : Index := Scalar.indexCast c1_i32_813
  let c0_i32_814 : BitVec 32 := 0#32
  let v980 : Index := Scalar.indexCast c0_i32_814
  let c0_i32_348 : BitVec 32 := 0#32
  let c1_i32_350 : BitVec 32 := 1#32
  let arg15 : BitVec 32 := Scf.iv c0_i32_348 c1_i32_350 k0_t3
  let v981 : Index := Scalar.indexCast arg15
  let c368_815 : Index := 368#32
  ![1, 0, v981.toNat, 368]
def k0_off688 (k0_t3 : Fin k0_t3_loop.trips) : Fin 4 → Nat :=
  let c1_i32_816 : BitVec 32 := 1#32
  let v985 : Index := Scalar.indexCast c1_i32_816
  let c0_i32_817 : BitVec 32 := 0#32
  let v986 : Index := Scalar.indexCast c0_i32_817
  let c0_i32_348 : BitVec 32 := 0#32
  let c1_i32_350 : BitVec 32 := 1#32
  let arg15 : BitVec 32 := Scf.iv c0_i32_348 c1_i32_350 k0_t3
  let v987 : Index := Scalar.indexCast arg15
  let c368_818 : Index := 368#32
  ![1, 0, v987.toNat, 368]
def k0_off689 (k0_t3 : Fin k0_t3_loop.trips) : Fin 4 → Nat :=
  let c1_i32_819 : BitVec 32 := 1#32
  let v991 : Index := Scalar.indexCast c1_i32_819
  let c0_i32_820 : BitVec 32 := 0#32
  let v992 : Index := Scalar.indexCast c0_i32_820
  let c0_i32_348 : BitVec 32 := 0#32
  let c1_i32_350 : BitVec 32 := 1#32
  let arg15 : BitVec 32 := Scf.iv c0_i32_348 c1_i32_350 k0_t3
  let v993 : Index := Scalar.indexCast arg15
  let c384_821 : Index := 384#32
  ![1, 0, v993.toNat, 384]
def k0_off690 (k0_t3 : Fin k0_t3_loop.trips) : Fin 4 → Nat :=
  let c1_i32_822 : BitVec 32 := 1#32
  let v997 : Index := Scalar.indexCast c1_i32_822
  let c0_i32_823 : BitVec 32 := 0#32
  let v998 : Index := Scalar.indexCast c0_i32_823
  let c0_i32_348 : BitVec 32 := 0#32
  let c1_i32_350 : BitVec 32 := 1#32
  let arg15 : BitVec 32 := Scf.iv c0_i32_348 c1_i32_350 k0_t3
  let v999 : Index := Scalar.indexCast arg15
  let c384_824 : Index := 384#32
  ![1, 0, v999.toNat, 384]
def k0_off691 (k0_t3 : Fin k0_t3_loop.trips) : Fin 4 → Nat :=
  let c1_i32_825 : BitVec 32 := 1#32
  let v1003 : Index := Scalar.indexCast c1_i32_825
  let c0_i32_826 : BitVec 32 := 0#32
  let v1004 : Index := Scalar.indexCast c0_i32_826
  let c0_i32_348 : BitVec 32 := 0#32
  let c1_i32_350 : BitVec 32 := 1#32
  let arg15 : BitVec 32 := Scf.iv c0_i32_348 c1_i32_350 k0_t3
  let v1005 : Index := Scalar.indexCast arg15
  let c400_827 : Index := 400#32
  ![1, 0, v1005.toNat, 400]
def k0_off692 (k0_t3 : Fin k0_t3_loop.trips) : Fin 4 → Nat :=
  let c1_i32_828 : BitVec 32 := 1#32
  let v1009 : Index := Scalar.indexCast c1_i32_828
  let c0_i32_829 : BitVec 32 := 0#32
  let v1010 : Index := Scalar.indexCast c0_i32_829
  let c0_i32_348 : BitVec 32 := 0#32
  let c1_i32_350 : BitVec 32 := 1#32
  let arg15 : BitVec 32 := Scf.iv c0_i32_348 c1_i32_350 k0_t3
  let v1011 : Index := Scalar.indexCast arg15
  let c400_830 : Index := 400#32
  ![1, 0, v1011.toNat, 400]
def k0_off693 (k0_t3 : Fin k0_t3_loop.trips) : Fin 4 → Nat :=
  let c1_i32_831 : BitVec 32 := 1#32
  let v1015 : Index := Scalar.indexCast c1_i32_831
  let c0_i32_832 : BitVec 32 := 0#32
  let v1016 : Index := Scalar.indexCast c0_i32_832
  let c0_i32_348 : BitVec 32 := 0#32
  let c1_i32_350 : BitVec 32 := 1#32
  let arg15 : BitVec 32 := Scf.iv c0_i32_348 c1_i32_350 k0_t3
  let v1017 : Index := Scalar.indexCast arg15
  let c416_833 : Index := 416#32
  ![1, 0, v1017.toNat, 416]
def k0_off694 (k0_t3 : Fin k0_t3_loop.trips) : Fin 4 → Nat :=
  let c1_i32_834 : BitVec 32 := 1#32
  let v1021 : Index := Scalar.indexCast c1_i32_834
  let c0_i32_835 : BitVec 32 := 0#32
  let v1022 : Index := Scalar.indexCast c0_i32_835
  let c0_i32_348 : BitVec 32 := 0#32
  let c1_i32_350 : BitVec 32 := 1#32
  let arg15 : BitVec 32 := Scf.iv c0_i32_348 c1_i32_350 k0_t3
  let v1023 : Index := Scalar.indexCast arg15
  let c416_836 : Index := 416#32
  ![1, 0, v1023.toNat, 416]
def k0_off695 (k0_t3 : Fin k0_t3_loop.trips) : Fin 4 → Nat :=
  let c1_i32_837 : BitVec 32 := 1#32
  let v1027 : Index := Scalar.indexCast c1_i32_837
  let c0_i32_838 : BitVec 32 := 0#32
  let v1028 : Index := Scalar.indexCast c0_i32_838
  let c0_i32_348 : BitVec 32 := 0#32
  let c1_i32_350 : BitVec 32 := 1#32
  let arg15 : BitVec 32 := Scf.iv c0_i32_348 c1_i32_350 k0_t3
  let v1029 : Index := Scalar.indexCast arg15
  let c432_839 : Index := 432#32
  ![1, 0, v1029.toNat, 432]
def k0_off696 (k0_t3 : Fin k0_t3_loop.trips) : Fin 4 → Nat :=
  let c1_i32_840 : BitVec 32 := 1#32
  let v1033 : Index := Scalar.indexCast c1_i32_840
  let c0_i32_841 : BitVec 32 := 0#32
  let v1034 : Index := Scalar.indexCast c0_i32_841
  let c0_i32_348 : BitVec 32 := 0#32
  let c1_i32_350 : BitVec 32 := 1#32
  let arg15 : BitVec 32 := Scf.iv c0_i32_348 c1_i32_350 k0_t3
  let v1035 : Index := Scalar.indexCast arg15
  let c432_842 : Index := 432#32
  ![1, 0, v1035.toNat, 432]
def k0_off697 (k0_t3 : Fin k0_t3_loop.trips) : Fin 4 → Nat :=
  let c1_i32_843 : BitVec 32 := 1#32
  let v1039 : Index := Scalar.indexCast c1_i32_843
  let c0_i32_844 : BitVec 32 := 0#32
  let v1040 : Index := Scalar.indexCast c0_i32_844
  let c0_i32_348 : BitVec 32 := 0#32
  let c1_i32_350 : BitVec 32 := 1#32
  let arg15 : BitVec 32 := Scf.iv c0_i32_348 c1_i32_350 k0_t3
  let v1041 : Index := Scalar.indexCast arg15
  let c448_845 : Index := 448#32
  ![1, 0, v1041.toNat, 448]
def k0_off698 (k0_t3 : Fin k0_t3_loop.trips) : Fin 4 → Nat :=
  let c1_i32_846 : BitVec 32 := 1#32
  let v1045 : Index := Scalar.indexCast c1_i32_846
  let c0_i32_847 : BitVec 32 := 0#32
  let v1046 : Index := Scalar.indexCast c0_i32_847
  let c0_i32_348 : BitVec 32 := 0#32
  let c1_i32_350 : BitVec 32 := 1#32
  let arg15 : BitVec 32 := Scf.iv c0_i32_348 c1_i32_350 k0_t3
  let v1047 : Index := Scalar.indexCast arg15
  let c448_848 : Index := 448#32
  ![1, 0, v1047.toNat, 448]
def k0_off699 (k0_t3 : Fin k0_t3_loop.trips) : Fin 4 → Nat :=
  let c1_i32_849 : BitVec 32 := 1#32
  let v1051 : Index := Scalar.indexCast c1_i32_849
  let c0_i32_850 : BitVec 32 := 0#32
  let v1052 : Index := Scalar.indexCast c0_i32_850
  let c0_i32_348 : BitVec 32 := 0#32
  let c1_i32_350 : BitVec 32 := 1#32
  let arg15 : BitVec 32 := Scf.iv c0_i32_348 c1_i32_350 k0_t3
  let v1053 : Index := Scalar.indexCast arg15
  let c464_851 : Index := 464#32
  ![1, 0, v1053.toNat, 464]
def k0_off700 (k0_t3 : Fin k0_t3_loop.trips) : Fin 4 → Nat :=
  let c1_i32_852 : BitVec 32 := 1#32
  let v1057 : Index := Scalar.indexCast c1_i32_852
  let c0_i32_853 : BitVec 32 := 0#32
  let v1058 : Index := Scalar.indexCast c0_i32_853
  let c0_i32_348 : BitVec 32 := 0#32
  let c1_i32_350 : BitVec 32 := 1#32
  let arg15 : BitVec 32 := Scf.iv c0_i32_348 c1_i32_350 k0_t3
  let v1059 : Index := Scalar.indexCast arg15
  let c464_854 : Index := 464#32
  ![1, 0, v1059.toNat, 464]
def k0_off701 (k0_t3 : Fin k0_t3_loop.trips) : Fin 4 → Nat :=
  let c1_i32_855 : BitVec 32 := 1#32
  let v1063 : Index := Scalar.indexCast c1_i32_855
  let c0_i32_856 : BitVec 32 := 0#32
  let v1064 : Index := Scalar.indexCast c0_i32_856
  let c0_i32_348 : BitVec 32 := 0#32
  let c1_i32_350 : BitVec 32 := 1#32
  let arg15 : BitVec 32 := Scf.iv c0_i32_348 c1_i32_350 k0_t3
  let v1065 : Index := Scalar.indexCast arg15
  let c480_857 : Index := 480#32
  ![1, 0, v1065.toNat, 480]
def k0_off702 (k0_t3 : Fin k0_t3_loop.trips) : Fin 4 → Nat :=
  let c1_i32_858 : BitVec 32 := 1#32
  let v1069 : Index := Scalar.indexCast c1_i32_858
  let c0_i32_859 : BitVec 32 := 0#32
  let v1070 : Index := Scalar.indexCast c0_i32_859
  let c0_i32_348 : BitVec 32 := 0#32
  let c1_i32_350 : BitVec 32 := 1#32
  let arg15 : BitVec 32 := Scf.iv c0_i32_348 c1_i32_350 k0_t3
  let v1071 : Index := Scalar.indexCast arg15
  let c480_860 : Index := 480#32
  ![1, 0, v1071.toNat, 480]
def k0_off703 (k0_t3 : Fin k0_t3_loop.trips) : Fin 4 → Nat :=
  let c1_i32_861 : BitVec 32 := 1#32
  let v1075 : Index := Scalar.indexCast c1_i32_861
  let c0_i32_862 : BitVec 32 := 0#32
  let v1076 : Index := Scalar.indexCast c0_i32_862
  let c0_i32_348 : BitVec 32 := 0#32
  let c1_i32_350 : BitVec 32 := 1#32
  let arg15 : BitVec 32 := Scf.iv c0_i32_348 c1_i32_350 k0_t3
  let v1077 : Index := Scalar.indexCast arg15
  let c496_863 : Index := 496#32
  ![1, 0, v1077.toNat, 496]
def k0_off704 (k0_t3 : Fin k0_t3_loop.trips) : Fin 4 → Nat :=
  let c1_i32_864 : BitVec 32 := 1#32
  let v1081 : Index := Scalar.indexCast c1_i32_864
  let c0_i32_865 : BitVec 32 := 0#32
  let v1082 : Index := Scalar.indexCast c0_i32_865
  let c0_i32_348 : BitVec 32 := 0#32
  let c1_i32_350 : BitVec 32 := 1#32
  let arg15 : BitVec 32 := Scf.iv c0_i32_348 c1_i32_350 k0_t3
  let v1083 : Index := Scalar.indexCast arg15
  let c496_866 : Index := 496#32
  ![1, 0, v1083.toNat, 496]
def k0_off705 (k0_t3 : Fin k0_t3_loop.trips) : Fin 4 → Nat :=
  let c1_i32_867 : BitVec 32 := 1#32
  let v1087 : Index := Scalar.indexCast c1_i32_867
  let c1_i32_868 : BitVec 32 := 1#32
  let v1088 : Index := Scalar.indexCast c1_i32_868
  let c0_i32_348 : BitVec 32 := 0#32
  let c1_i32_350 : BitVec 32 := 1#32
  let arg15 : BitVec 32 := Scf.iv c0_i32_348 c1_i32_350 k0_t3
  let v1089 : Index := Scalar.indexCast arg15
  let c0_869 : Index := 0#32
  ![1, 1, v1089.toNat, 0]
def k0_off706 (k0_t3 : Fin k0_t3_loop.trips) : Fin 4 → Nat :=
  let c1_i32_870 : BitVec 32 := 1#32
  let v1093 : Index := Scalar.indexCast c1_i32_870
  let c1_i32_871 : BitVec 32 := 1#32
  let v1094 : Index := Scalar.indexCast c1_i32_871
  let c0_i32_348 : BitVec 32 := 0#32
  let c1_i32_350 : BitVec 32 := 1#32
  let arg15 : BitVec 32 := Scf.iv c0_i32_348 c1_i32_350 k0_t3
  let v1095 : Index := Scalar.indexCast arg15
  let c0_872 : Index := 0#32
  ![1, 1, v1095.toNat, 0]
def k0_off707 (k0_t3 : Fin k0_t3_loop.trips) : Fin 4 → Nat :=
  let c1_i32_873 : BitVec 32 := 1#32
  let v1099 : Index := Scalar.indexCast c1_i32_873
  let c1_i32_874 : BitVec 32 := 1#32
  let v1100 : Index := Scalar.indexCast c1_i32_874
  let c0_i32_348 : BitVec 32 := 0#32
  let c1_i32_350 : BitVec 32 := 1#32
  let arg15 : BitVec 32 := Scf.iv c0_i32_348 c1_i32_350 k0_t3
  let v1101 : Index := Scalar.indexCast arg15
  let c16_875 : Index := 16#32
  ![1, 1, v1101.toNat, 16]
def k0_off708 (k0_t3 : Fin k0_t3_loop.trips) : Fin 4 → Nat :=
  let c1_i32_876 : BitVec 32 := 1#32
  let v1105 : Index := Scalar.indexCast c1_i32_876
  let c1_i32_877 : BitVec 32 := 1#32
  let v1106 : Index := Scalar.indexCast c1_i32_877
  let c0_i32_348 : BitVec 32 := 0#32
  let c1_i32_350 : BitVec 32 := 1#32
  let arg15 : BitVec 32 := Scf.iv c0_i32_348 c1_i32_350 k0_t3
  let v1107 : Index := Scalar.indexCast arg15
  let c16_878 : Index := 16#32
  ![1, 1, v1107.toNat, 16]
def k0_off709 (k0_t3 : Fin k0_t3_loop.trips) : Fin 4 → Nat :=
  let c1_i32_879 : BitVec 32 := 1#32
  let v1111 : Index := Scalar.indexCast c1_i32_879
  let c1_i32_880 : BitVec 32 := 1#32
  let v1112 : Index := Scalar.indexCast c1_i32_880
  let c0_i32_348 : BitVec 32 := 0#32
  let c1_i32_350 : BitVec 32 := 1#32
  let arg15 : BitVec 32 := Scf.iv c0_i32_348 c1_i32_350 k0_t3
  let v1113 : Index := Scalar.indexCast arg15
  let c32_881 : Index := 32#32
  ![1, 1, v1113.toNat, 32]
def k0_off710 (k0_t3 : Fin k0_t3_loop.trips) : Fin 4 → Nat :=
  let c1_i32_882 : BitVec 32 := 1#32
  let v1117 : Index := Scalar.indexCast c1_i32_882
  let c1_i32_883 : BitVec 32 := 1#32
  let v1118 : Index := Scalar.indexCast c1_i32_883
  let c0_i32_348 : BitVec 32 := 0#32
  let c1_i32_350 : BitVec 32 := 1#32
  let arg15 : BitVec 32 := Scf.iv c0_i32_348 c1_i32_350 k0_t3
  let v1119 : Index := Scalar.indexCast arg15
  let c32_884 : Index := 32#32
  ![1, 1, v1119.toNat, 32]
def k0_off711 (k0_t3 : Fin k0_t3_loop.trips) : Fin 4 → Nat :=
  let c1_i32_885 : BitVec 32 := 1#32
  let v1123 : Index := Scalar.indexCast c1_i32_885
  let c1_i32_886 : BitVec 32 := 1#32
  let v1124 : Index := Scalar.indexCast c1_i32_886
  let c0_i32_348 : BitVec 32 := 0#32
  let c1_i32_350 : BitVec 32 := 1#32
  let arg15 : BitVec 32 := Scf.iv c0_i32_348 c1_i32_350 k0_t3
  let v1125 : Index := Scalar.indexCast arg15
  let c48_887 : Index := 48#32
  ![1, 1, v1125.toNat, 48]
def k0_off712 (k0_t3 : Fin k0_t3_loop.trips) : Fin 4 → Nat :=
  let c1_i32_888 : BitVec 32 := 1#32
  let v1129 : Index := Scalar.indexCast c1_i32_888
  let c1_i32_889 : BitVec 32 := 1#32
  let v1130 : Index := Scalar.indexCast c1_i32_889
  let c0_i32_348 : BitVec 32 := 0#32
  let c1_i32_350 : BitVec 32 := 1#32
  let arg15 : BitVec 32 := Scf.iv c0_i32_348 c1_i32_350 k0_t3
  let v1131 : Index := Scalar.indexCast arg15
  let c48_890 : Index := 48#32
  ![1, 1, v1131.toNat, 48]
def k0_off713 (k0_t3 : Fin k0_t3_loop.trips) : Fin 4 → Nat :=
  let c1_i32_891 : BitVec 32 := 1#32
  let v1135 : Index := Scalar.indexCast c1_i32_891
  let c1_i32_892 : BitVec 32 := 1#32
  let v1136 : Index := Scalar.indexCast c1_i32_892
  let c0_i32_348 : BitVec 32 := 0#32
  let c1_i32_350 : BitVec 32 := 1#32
  let arg15 : BitVec 32 := Scf.iv c0_i32_348 c1_i32_350 k0_t3
  let v1137 : Index := Scalar.indexCast arg15
  let c64_893 : Index := 64#32
  ![1, 1, v1137.toNat, 64]
def k0_off714 (k0_t3 : Fin k0_t3_loop.trips) : Fin 4 → Nat :=
  let c1_i32_894 : BitVec 32 := 1#32
  let v1141 : Index := Scalar.indexCast c1_i32_894
  let c1_i32_895 : BitVec 32 := 1#32
  let v1142 : Index := Scalar.indexCast c1_i32_895
  let c0_i32_348 : BitVec 32 := 0#32
  let c1_i32_350 : BitVec 32 := 1#32
  let arg15 : BitVec 32 := Scf.iv c0_i32_348 c1_i32_350 k0_t3
  let v1143 : Index := Scalar.indexCast arg15
  let c64_896 : Index := 64#32
  ![1, 1, v1143.toNat, 64]
def k0_off715 (k0_t3 : Fin k0_t3_loop.trips) : Fin 4 → Nat :=
  let c1_i32_897 : BitVec 32 := 1#32
  let v1147 : Index := Scalar.indexCast c1_i32_897
  let c1_i32_898 : BitVec 32 := 1#32
  let v1148 : Index := Scalar.indexCast c1_i32_898
  let c0_i32_348 : BitVec 32 := 0#32
  let c1_i32_350 : BitVec 32 := 1#32
  let arg15 : BitVec 32 := Scf.iv c0_i32_348 c1_i32_350 k0_t3
  let v1149 : Index := Scalar.indexCast arg15
  let c80_899 : Index := 80#32
  ![1, 1, v1149.toNat, 80]
def k0_off716 (k0_t3 : Fin k0_t3_loop.trips) : Fin 4 → Nat :=
  let c1_i32_900 : BitVec 32 := 1#32
  let v1153 : Index := Scalar.indexCast c1_i32_900
  let c1_i32_901 : BitVec 32 := 1#32
  let v1154 : Index := Scalar.indexCast c1_i32_901
  let c0_i32_348 : BitVec 32 := 0#32
  let c1_i32_350 : BitVec 32 := 1#32
  let arg15 : BitVec 32 := Scf.iv c0_i32_348 c1_i32_350 k0_t3
  let v1155 : Index := Scalar.indexCast arg15
  let c80_902 : Index := 80#32
  ![1, 1, v1155.toNat, 80]
def k0_off717 (k0_t3 : Fin k0_t3_loop.trips) : Fin 4 → Nat :=
  let c1_i32_903 : BitVec 32 := 1#32
  let v1159 : Index := Scalar.indexCast c1_i32_903
  let c1_i32_904 : BitVec 32 := 1#32
  let v1160 : Index := Scalar.indexCast c1_i32_904
  let c0_i32_348 : BitVec 32 := 0#32
  let c1_i32_350 : BitVec 32 := 1#32
  let arg15 : BitVec 32 := Scf.iv c0_i32_348 c1_i32_350 k0_t3
  let v1161 : Index := Scalar.indexCast arg15
  let c96_905 : Index := 96#32
  ![1, 1, v1161.toNat, 96]
def k0_off718 (k0_t3 : Fin k0_t3_loop.trips) : Fin 4 → Nat :=
  let c1_i32_906 : BitVec 32 := 1#32
  let v1165 : Index := Scalar.indexCast c1_i32_906
  let c1_i32_907 : BitVec 32 := 1#32
  let v1166 : Index := Scalar.indexCast c1_i32_907
  let c0_i32_348 : BitVec 32 := 0#32
  let c1_i32_350 : BitVec 32 := 1#32
  let arg15 : BitVec 32 := Scf.iv c0_i32_348 c1_i32_350 k0_t3
  let v1167 : Index := Scalar.indexCast arg15
  let c96_908 : Index := 96#32
  ![1, 1, v1167.toNat, 96]
def k0_off719 (k0_t3 : Fin k0_t3_loop.trips) : Fin 4 → Nat :=
  let c1_i32_909 : BitVec 32 := 1#32
  let v1171 : Index := Scalar.indexCast c1_i32_909
  let c1_i32_910 : BitVec 32 := 1#32
  let v1172 : Index := Scalar.indexCast c1_i32_910
  let c0_i32_348 : BitVec 32 := 0#32
  let c1_i32_350 : BitVec 32 := 1#32
  let arg15 : BitVec 32 := Scf.iv c0_i32_348 c1_i32_350 k0_t3
  let v1173 : Index := Scalar.indexCast arg15
  let c112_911 : Index := 112#32
  ![1, 1, v1173.toNat, 112]
def k0_off720 (k0_t3 : Fin k0_t3_loop.trips) : Fin 4 → Nat :=
  let c1_i32_912 : BitVec 32 := 1#32
  let v1177 : Index := Scalar.indexCast c1_i32_912
  let c1_i32_913 : BitVec 32 := 1#32
  let v1178 : Index := Scalar.indexCast c1_i32_913
  let c0_i32_348 : BitVec 32 := 0#32
  let c1_i32_350 : BitVec 32 := 1#32
  let arg15 : BitVec 32 := Scf.iv c0_i32_348 c1_i32_350 k0_t3
  let v1179 : Index := Scalar.indexCast arg15
  let c112_914 : Index := 112#32
  ![1, 1, v1179.toNat, 112]
def k0_off721 (k0_t3 : Fin k0_t3_loop.trips) : Fin 4 → Nat :=
  let c1_i32_915 : BitVec 32 := 1#32
  let v1183 : Index := Scalar.indexCast c1_i32_915
  let c1_i32_916 : BitVec 32 := 1#32
  let v1184 : Index := Scalar.indexCast c1_i32_916
  let c0_i32_348 : BitVec 32 := 0#32
  let c1_i32_350 : BitVec 32 := 1#32
  let arg15 : BitVec 32 := Scf.iv c0_i32_348 c1_i32_350 k0_t3
  let v1185 : Index := Scalar.indexCast arg15
  let c128_917 : Index := 128#32
  ![1, 1, v1185.toNat, 128]
def k0_off722 (k0_t3 : Fin k0_t3_loop.trips) : Fin 4 → Nat :=
  let c1_i32_918 : BitVec 32 := 1#32
  let v1189 : Index := Scalar.indexCast c1_i32_918
  let c1_i32_919 : BitVec 32 := 1#32
  let v1190 : Index := Scalar.indexCast c1_i32_919
  let c0_i32_348 : BitVec 32 := 0#32
  let c1_i32_350 : BitVec 32 := 1#32
  let arg15 : BitVec 32 := Scf.iv c0_i32_348 c1_i32_350 k0_t3
  let v1191 : Index := Scalar.indexCast arg15
  let c128_920 : Index := 128#32
  ![1, 1, v1191.toNat, 128]
def k0_off723 (k0_t3 : Fin k0_t3_loop.trips) : Fin 4 → Nat :=
  let c1_i32_921 : BitVec 32 := 1#32
  let v1195 : Index := Scalar.indexCast c1_i32_921
  let c1_i32_922 : BitVec 32 := 1#32
  let v1196 : Index := Scalar.indexCast c1_i32_922
  let c0_i32_348 : BitVec 32 := 0#32
  let c1_i32_350 : BitVec 32 := 1#32
  let arg15 : BitVec 32 := Scf.iv c0_i32_348 c1_i32_350 k0_t3
  let v1197 : Index := Scalar.indexCast arg15
  let c144_923 : Index := 144#32
  ![1, 1, v1197.toNat, 144]
def k0_off724 (k0_t3 : Fin k0_t3_loop.trips) : Fin 4 → Nat :=
  let c1_i32_924 : BitVec 32 := 1#32
  let v1201 : Index := Scalar.indexCast c1_i32_924
  let c1_i32_925 : BitVec 32 := 1#32
  let v1202 : Index := Scalar.indexCast c1_i32_925
  let c0_i32_348 : BitVec 32 := 0#32
  let c1_i32_350 : BitVec 32 := 1#32
  let arg15 : BitVec 32 := Scf.iv c0_i32_348 c1_i32_350 k0_t3
  let v1203 : Index := Scalar.indexCast arg15
  let c144_926 : Index := 144#32
  ![1, 1, v1203.toNat, 144]
def k0_off725 (k0_t3 : Fin k0_t3_loop.trips) : Fin 4 → Nat :=
  let c1_i32_927 : BitVec 32 := 1#32
  let v1207 : Index := Scalar.indexCast c1_i32_927
  let c1_i32_928 : BitVec 32 := 1#32
  let v1208 : Index := Scalar.indexCast c1_i32_928
  let c0_i32_348 : BitVec 32 := 0#32
  let c1_i32_350 : BitVec 32 := 1#32
  let arg15 : BitVec 32 := Scf.iv c0_i32_348 c1_i32_350 k0_t3
  let v1209 : Index := Scalar.indexCast arg15
  let c160_929 : Index := 160#32
  ![1, 1, v1209.toNat, 160]
def k0_off726 (k0_t3 : Fin k0_t3_loop.trips) : Fin 4 → Nat :=
  let c1_i32_930 : BitVec 32 := 1#32
  let v1213 : Index := Scalar.indexCast c1_i32_930
  let c1_i32_931 : BitVec 32 := 1#32
  let v1214 : Index := Scalar.indexCast c1_i32_931
  let c0_i32_348 : BitVec 32 := 0#32
  let c1_i32_350 : BitVec 32 := 1#32
  let arg15 : BitVec 32 := Scf.iv c0_i32_348 c1_i32_350 k0_t3
  let v1215 : Index := Scalar.indexCast arg15
  let c160_932 : Index := 160#32
  ![1, 1, v1215.toNat, 160]
def k0_off727 (k0_t3 : Fin k0_t3_loop.trips) : Fin 4 → Nat :=
  let c1_i32_933 : BitVec 32 := 1#32
  let v1219 : Index := Scalar.indexCast c1_i32_933
  let c1_i32_934 : BitVec 32 := 1#32
  let v1220 : Index := Scalar.indexCast c1_i32_934
  let c0_i32_348 : BitVec 32 := 0#32
  let c1_i32_350 : BitVec 32 := 1#32
  let arg15 : BitVec 32 := Scf.iv c0_i32_348 c1_i32_350 k0_t3
  let v1221 : Index := Scalar.indexCast arg15
  let c176_935 : Index := 176#32
  ![1, 1, v1221.toNat, 176]
def k0_off728 (k0_t3 : Fin k0_t3_loop.trips) : Fin 4 → Nat :=
  let c1_i32_936 : BitVec 32 := 1#32
  let v1225 : Index := Scalar.indexCast c1_i32_936
  let c1_i32_937 : BitVec 32 := 1#32
  let v1226 : Index := Scalar.indexCast c1_i32_937
  let c0_i32_348 : BitVec 32 := 0#32
  let c1_i32_350 : BitVec 32 := 1#32
  let arg15 : BitVec 32 := Scf.iv c0_i32_348 c1_i32_350 k0_t3
  let v1227 : Index := Scalar.indexCast arg15
  let c176_938 : Index := 176#32
  ![1, 1, v1227.toNat, 176]
def k0_off729 (k0_t3 : Fin k0_t3_loop.trips) : Fin 4 → Nat :=
  let c1_i32_939 : BitVec 32 := 1#32
  let v1231 : Index := Scalar.indexCast c1_i32_939
  let c1_i32_940 : BitVec 32 := 1#32
  let v1232 : Index := Scalar.indexCast c1_i32_940
  let c0_i32_348 : BitVec 32 := 0#32
  let c1_i32_350 : BitVec 32 := 1#32
  let arg15 : BitVec 32 := Scf.iv c0_i32_348 c1_i32_350 k0_t3
  let v1233 : Index := Scalar.indexCast arg15
  let c192_941 : Index := 192#32
  ![1, 1, v1233.toNat, 192]
def k0_off730 (k0_t3 : Fin k0_t3_loop.trips) : Fin 4 → Nat :=
  let c1_i32_942 : BitVec 32 := 1#32
  let v1237 : Index := Scalar.indexCast c1_i32_942
  let c1_i32_943 : BitVec 32 := 1#32
  let v1238 : Index := Scalar.indexCast c1_i32_943
  let c0_i32_348 : BitVec 32 := 0#32
  let c1_i32_350 : BitVec 32 := 1#32
  let arg15 : BitVec 32 := Scf.iv c0_i32_348 c1_i32_350 k0_t3
  let v1239 : Index := Scalar.indexCast arg15
  let c192_944 : Index := 192#32
  ![1, 1, v1239.toNat, 192]
def k0_off731 (k0_t3 : Fin k0_t3_loop.trips) : Fin 4 → Nat :=
  let c1_i32_945 : BitVec 32 := 1#32
  let v1243 : Index := Scalar.indexCast c1_i32_945
  let c1_i32_946 : BitVec 32 := 1#32
  let v1244 : Index := Scalar.indexCast c1_i32_946
  let c0_i32_348 : BitVec 32 := 0#32
  let c1_i32_350 : BitVec 32 := 1#32
  let arg15 : BitVec 32 := Scf.iv c0_i32_348 c1_i32_350 k0_t3
  let v1245 : Index := Scalar.indexCast arg15
  let c208_947 : Index := 208#32
  ![1, 1, v1245.toNat, 208]
def k0_off732 (k0_t3 : Fin k0_t3_loop.trips) : Fin 4 → Nat :=
  let c1_i32_948 : BitVec 32 := 1#32
  let v1249 : Index := Scalar.indexCast c1_i32_948
  let c1_i32_949 : BitVec 32 := 1#32
  let v1250 : Index := Scalar.indexCast c1_i32_949
  let c0_i32_348 : BitVec 32 := 0#32
  let c1_i32_350 : BitVec 32 := 1#32
  let arg15 : BitVec 32 := Scf.iv c0_i32_348 c1_i32_350 k0_t3
  let v1251 : Index := Scalar.indexCast arg15
  let c208_950 : Index := 208#32
  ![1, 1, v1251.toNat, 208]
def k0_off733 (k0_t3 : Fin k0_t3_loop.trips) : Fin 4 → Nat :=
  let c1_i32_951 : BitVec 32 := 1#32
  let v1255 : Index := Scalar.indexCast c1_i32_951
  let c1_i32_952 : BitVec 32 := 1#32
  let v1256 : Index := Scalar.indexCast c1_i32_952
  let c0_i32_348 : BitVec 32 := 0#32
  let c1_i32_350 : BitVec 32 := 1#32
  let arg15 : BitVec 32 := Scf.iv c0_i32_348 c1_i32_350 k0_t3
  let v1257 : Index := Scalar.indexCast arg15
  let c224_953 : Index := 224#32
  ![1, 1, v1257.toNat, 224]
def k0_off734 (k0_t3 : Fin k0_t3_loop.trips) : Fin 4 → Nat :=
  let c1_i32_954 : BitVec 32 := 1#32
  let v1261 : Index := Scalar.indexCast c1_i32_954
  let c1_i32_955 : BitVec 32 := 1#32
  let v1262 : Index := Scalar.indexCast c1_i32_955
  let c0_i32_348 : BitVec 32 := 0#32
  let c1_i32_350 : BitVec 32 := 1#32
  let arg15 : BitVec 32 := Scf.iv c0_i32_348 c1_i32_350 k0_t3
  let v1263 : Index := Scalar.indexCast arg15
  let c224_956 : Index := 224#32
  ![1, 1, v1263.toNat, 224]
def k0_off735 (k0_t3 : Fin k0_t3_loop.trips) : Fin 4 → Nat :=
  let c1_i32_957 : BitVec 32 := 1#32
  let v1267 : Index := Scalar.indexCast c1_i32_957
  let c1_i32_958 : BitVec 32 := 1#32
  let v1268 : Index := Scalar.indexCast c1_i32_958
  let c0_i32_348 : BitVec 32 := 0#32
  let c1_i32_350 : BitVec 32 := 1#32
  let arg15 : BitVec 32 := Scf.iv c0_i32_348 c1_i32_350 k0_t3
  let v1269 : Index := Scalar.indexCast arg15
  let c240_959 : Index := 240#32
  ![1, 1, v1269.toNat, 240]
def k0_off736 (k0_t3 : Fin k0_t3_loop.trips) : Fin 4 → Nat :=
  let c1_i32_960 : BitVec 32 := 1#32
  let v1273 : Index := Scalar.indexCast c1_i32_960
  let c1_i32_961 : BitVec 32 := 1#32
  let v1274 : Index := Scalar.indexCast c1_i32_961
  let c0_i32_348 : BitVec 32 := 0#32
  let c1_i32_350 : BitVec 32 := 1#32
  let arg15 : BitVec 32 := Scf.iv c0_i32_348 c1_i32_350 k0_t3
  let v1275 : Index := Scalar.indexCast arg15
  let c240_962 : Index := 240#32
  ![1, 1, v1275.toNat, 240]
def k0_off737 (k0_t3 : Fin k0_t3_loop.trips) : Fin 4 → Nat :=
  let c1_i32_963 : BitVec 32 := 1#32
  let v1279 : Index := Scalar.indexCast c1_i32_963
  let c1_i32_964 : BitVec 32 := 1#32
  let v1280 : Index := Scalar.indexCast c1_i32_964
  let c0_i32_348 : BitVec 32 := 0#32
  let c1_i32_350 : BitVec 32 := 1#32
  let arg15 : BitVec 32 := Scf.iv c0_i32_348 c1_i32_350 k0_t3
  let v1281 : Index := Scalar.indexCast arg15
  let c256_965 : Index := 256#32
  ![1, 1, v1281.toNat, 256]
def k0_off738 (k0_t3 : Fin k0_t3_loop.trips) : Fin 4 → Nat :=
  let c1_i32_966 : BitVec 32 := 1#32
  let v1285 : Index := Scalar.indexCast c1_i32_966
  let c1_i32_967 : BitVec 32 := 1#32
  let v1286 : Index := Scalar.indexCast c1_i32_967
  let c0_i32_348 : BitVec 32 := 0#32
  let c1_i32_350 : BitVec 32 := 1#32
  let arg15 : BitVec 32 := Scf.iv c0_i32_348 c1_i32_350 k0_t3
  let v1287 : Index := Scalar.indexCast arg15
  let c256_968 : Index := 256#32
  ![1, 1, v1287.toNat, 256]
def k0_off739 (k0_t3 : Fin k0_t3_loop.trips) : Fin 4 → Nat :=
  let c1_i32_969 : BitVec 32 := 1#32
  let v1291 : Index := Scalar.indexCast c1_i32_969
  let c1_i32_970 : BitVec 32 := 1#32
  let v1292 : Index := Scalar.indexCast c1_i32_970
  let c0_i32_348 : BitVec 32 := 0#32
  let c1_i32_350 : BitVec 32 := 1#32
  let arg15 : BitVec 32 := Scf.iv c0_i32_348 c1_i32_350 k0_t3
  let v1293 : Index := Scalar.indexCast arg15
  let c272_971 : Index := 272#32
  ![1, 1, v1293.toNat, 272]
def k0_off740 (k0_t3 : Fin k0_t3_loop.trips) : Fin 4 → Nat :=
  let c1_i32_972 : BitVec 32 := 1#32
  let v1297 : Index := Scalar.indexCast c1_i32_972
  let c1_i32_973 : BitVec 32 := 1#32
  let v1298 : Index := Scalar.indexCast c1_i32_973
  let c0_i32_348 : BitVec 32 := 0#32
  let c1_i32_350 : BitVec 32 := 1#32
  let arg15 : BitVec 32 := Scf.iv c0_i32_348 c1_i32_350 k0_t3
  let v1299 : Index := Scalar.indexCast arg15
  let c272_974 : Index := 272#32
  ![1, 1, v1299.toNat, 272]
def k0_off741 (k0_t3 : Fin k0_t3_loop.trips) : Fin 4 → Nat :=
  let c1_i32_975 : BitVec 32 := 1#32
  let v1303 : Index := Scalar.indexCast c1_i32_975
  let c1_i32_976 : BitVec 32 := 1#32
  let v1304 : Index := Scalar.indexCast c1_i32_976
  let c0_i32_348 : BitVec 32 := 0#32
  let c1_i32_350 : BitVec 32 := 1#32
  let arg15 : BitVec 32 := Scf.iv c0_i32_348 c1_i32_350 k0_t3
  let v1305 : Index := Scalar.indexCast arg15
  let c288_977 : Index := 288#32
  ![1, 1, v1305.toNat, 288]
def k0_off742 (k0_t3 : Fin k0_t3_loop.trips) : Fin 4 → Nat :=
  let c1_i32_978 : BitVec 32 := 1#32
  let v1309 : Index := Scalar.indexCast c1_i32_978
  let c1_i32_979 : BitVec 32 := 1#32
  let v1310 : Index := Scalar.indexCast c1_i32_979
  let c0_i32_348 : BitVec 32 := 0#32
  let c1_i32_350 : BitVec 32 := 1#32
  let arg15 : BitVec 32 := Scf.iv c0_i32_348 c1_i32_350 k0_t3
  let v1311 : Index := Scalar.indexCast arg15
  let c288_980 : Index := 288#32
  ![1, 1, v1311.toNat, 288]
def k0_off743 (k0_t3 : Fin k0_t3_loop.trips) : Fin 4 → Nat :=
  let c1_i32_981 : BitVec 32 := 1#32
  let v1315 : Index := Scalar.indexCast c1_i32_981
  let c1_i32_982 : BitVec 32 := 1#32
  let v1316 : Index := Scalar.indexCast c1_i32_982
  let c0_i32_348 : BitVec 32 := 0#32
  let c1_i32_350 : BitVec 32 := 1#32
  let arg15 : BitVec 32 := Scf.iv c0_i32_348 c1_i32_350 k0_t3
  let v1317 : Index := Scalar.indexCast arg15
  let c304_983 : Index := 304#32
  ![1, 1, v1317.toNat, 304]
def k0_off744 (k0_t3 : Fin k0_t3_loop.trips) : Fin 4 → Nat :=
  let c1_i32_984 : BitVec 32 := 1#32
  let v1321 : Index := Scalar.indexCast c1_i32_984
  let c1_i32_985 : BitVec 32 := 1#32
  let v1322 : Index := Scalar.indexCast c1_i32_985
  let c0_i32_348 : BitVec 32 := 0#32
  let c1_i32_350 : BitVec 32 := 1#32
  let arg15 : BitVec 32 := Scf.iv c0_i32_348 c1_i32_350 k0_t3
  let v1323 : Index := Scalar.indexCast arg15
  let c304_986 : Index := 304#32
  ![1, 1, v1323.toNat, 304]
def k0_off745 (k0_t3 : Fin k0_t3_loop.trips) : Fin 4 → Nat :=
  let c1_i32_987 : BitVec 32 := 1#32
  let v1327 : Index := Scalar.indexCast c1_i32_987
  let c1_i32_988 : BitVec 32 := 1#32
  let v1328 : Index := Scalar.indexCast c1_i32_988
  let c0_i32_348 : BitVec 32 := 0#32
  let c1_i32_350 : BitVec 32 := 1#32
  let arg15 : BitVec 32 := Scf.iv c0_i32_348 c1_i32_350 k0_t3
  let v1329 : Index := Scalar.indexCast arg15
  let c320_989 : Index := 320#32
  ![1, 1, v1329.toNat, 320]
def k0_off746 (k0_t3 : Fin k0_t3_loop.trips) : Fin 4 → Nat :=
  let c1_i32_990 : BitVec 32 := 1#32
  let v1333 : Index := Scalar.indexCast c1_i32_990
  let c1_i32_991 : BitVec 32 := 1#32
  let v1334 : Index := Scalar.indexCast c1_i32_991
  let c0_i32_348 : BitVec 32 := 0#32
  let c1_i32_350 : BitVec 32 := 1#32
  let arg15 : BitVec 32 := Scf.iv c0_i32_348 c1_i32_350 k0_t3
  let v1335 : Index := Scalar.indexCast arg15
  let c320_992 : Index := 320#32
  ![1, 1, v1335.toNat, 320]
def k0_off747 (k0_t3 : Fin k0_t3_loop.trips) : Fin 4 → Nat :=
  let c1_i32_993 : BitVec 32 := 1#32
  let v1339 : Index := Scalar.indexCast c1_i32_993
  let c1_i32_994 : BitVec 32 := 1#32
  let v1340 : Index := Scalar.indexCast c1_i32_994
  let c0_i32_348 : BitVec 32 := 0#32
  let c1_i32_350 : BitVec 32 := 1#32
  let arg15 : BitVec 32 := Scf.iv c0_i32_348 c1_i32_350 k0_t3
  let v1341 : Index := Scalar.indexCast arg15
  let c336_995 : Index := 336#32
  ![1, 1, v1341.toNat, 336]
def k0_off748 (k0_t3 : Fin k0_t3_loop.trips) : Fin 4 → Nat :=
  let c1_i32_996 : BitVec 32 := 1#32
  let v1345 : Index := Scalar.indexCast c1_i32_996
  let c1_i32_997 : BitVec 32 := 1#32
  let v1346 : Index := Scalar.indexCast c1_i32_997
  let c0_i32_348 : BitVec 32 := 0#32
  let c1_i32_350 : BitVec 32 := 1#32
  let arg15 : BitVec 32 := Scf.iv c0_i32_348 c1_i32_350 k0_t3
  let v1347 : Index := Scalar.indexCast arg15
  let c336_998 : Index := 336#32
  ![1, 1, v1347.toNat, 336]
def k0_off749 (k0_t3 : Fin k0_t3_loop.trips) : Fin 4 → Nat :=
  let c1_i32_999 : BitVec 32 := 1#32
  let v1351 : Index := Scalar.indexCast c1_i32_999
  let c1_i32_1000 : BitVec 32 := 1#32
  let v1352 : Index := Scalar.indexCast c1_i32_1000
  let c0_i32_348 : BitVec 32 := 0#32
  let c1_i32_350 : BitVec 32 := 1#32
  let arg15 : BitVec 32 := Scf.iv c0_i32_348 c1_i32_350 k0_t3
  let v1353 : Index := Scalar.indexCast arg15
  let c352_1001 : Index := 352#32
  ![1, 1, v1353.toNat, 352]
def k0_off750 (k0_t3 : Fin k0_t3_loop.trips) : Fin 4 → Nat :=
  let c1_i32_1002 : BitVec 32 := 1#32
  let v1357 : Index := Scalar.indexCast c1_i32_1002
  let c1_i32_1003 : BitVec 32 := 1#32
  let v1358 : Index := Scalar.indexCast c1_i32_1003
  let c0_i32_348 : BitVec 32 := 0#32
  let c1_i32_350 : BitVec 32 := 1#32
  let arg15 : BitVec 32 := Scf.iv c0_i32_348 c1_i32_350 k0_t3
  let v1359 : Index := Scalar.indexCast arg15
  let c352_1004 : Index := 352#32
  ![1, 1, v1359.toNat, 352]
def k0_off751 (k0_t3 : Fin k0_t3_loop.trips) : Fin 4 → Nat :=
  let c1_i32_1005 : BitVec 32 := 1#32
  let v1363 : Index := Scalar.indexCast c1_i32_1005
  let c1_i32_1006 : BitVec 32 := 1#32
  let v1364 : Index := Scalar.indexCast c1_i32_1006
  let c0_i32_348 : BitVec 32 := 0#32
  let c1_i32_350 : BitVec 32 := 1#32
  let arg15 : BitVec 32 := Scf.iv c0_i32_348 c1_i32_350 k0_t3
  let v1365 : Index := Scalar.indexCast arg15
  let c368_1007 : Index := 368#32
  ![1, 1, v1365.toNat, 368]
def k0_off752 (k0_t3 : Fin k0_t3_loop.trips) : Fin 4 → Nat :=
  let c1_i32_1008 : BitVec 32 := 1#32
  let v1369 : Index := Scalar.indexCast c1_i32_1008
  let c1_i32_1009 : BitVec 32 := 1#32
  let v1370 : Index := Scalar.indexCast c1_i32_1009
  let c0_i32_348 : BitVec 32 := 0#32
  let c1_i32_350 : BitVec 32 := 1#32
  let arg15 : BitVec 32 := Scf.iv c0_i32_348 c1_i32_350 k0_t3
  let v1371 : Index := Scalar.indexCast arg15
  let c368_1010 : Index := 368#32
  ![1, 1, v1371.toNat, 368]
def k0_off753 (k0_t3 : Fin k0_t3_loop.trips) : Fin 4 → Nat :=
  let c1_i32_1011 : BitVec 32 := 1#32
  let v1375 : Index := Scalar.indexCast c1_i32_1011
  let c1_i32_1012 : BitVec 32 := 1#32
  let v1376 : Index := Scalar.indexCast c1_i32_1012
  let c0_i32_348 : BitVec 32 := 0#32
  let c1_i32_350 : BitVec 32 := 1#32
  let arg15 : BitVec 32 := Scf.iv c0_i32_348 c1_i32_350 k0_t3
  let v1377 : Index := Scalar.indexCast arg15
  let c384_1013 : Index := 384#32
  ![1, 1, v1377.toNat, 384]
def k0_off754 (k0_t3 : Fin k0_t3_loop.trips) : Fin 4 → Nat :=
  let c1_i32_1014 : BitVec 32 := 1#32
  let v1381 : Index := Scalar.indexCast c1_i32_1014
  let c1_i32_1015 : BitVec 32 := 1#32
  let v1382 : Index := Scalar.indexCast c1_i32_1015
  let c0_i32_348 : BitVec 32 := 0#32
  let c1_i32_350 : BitVec 32 := 1#32
  let arg15 : BitVec 32 := Scf.iv c0_i32_348 c1_i32_350 k0_t3
  let v1383 : Index := Scalar.indexCast arg15
  let c384_1016 : Index := 384#32
  ![1, 1, v1383.toNat, 384]
def k0_off755 (k0_t3 : Fin k0_t3_loop.trips) : Fin 4 → Nat :=
  let c1_i32_1017 : BitVec 32 := 1#32
  let v1387 : Index := Scalar.indexCast c1_i32_1017
  let c1_i32_1018 : BitVec 32 := 1#32
  let v1388 : Index := Scalar.indexCast c1_i32_1018
  let c0_i32_348 : BitVec 32 := 0#32
  let c1_i32_350 : BitVec 32 := 1#32
  let arg15 : BitVec 32 := Scf.iv c0_i32_348 c1_i32_350 k0_t3
  let v1389 : Index := Scalar.indexCast arg15
  let c400_1019 : Index := 400#32
  ![1, 1, v1389.toNat, 400]
def k0_off756 (k0_t3 : Fin k0_t3_loop.trips) : Fin 4 → Nat :=
  let c1_i32_1020 : BitVec 32 := 1#32
  let v1393 : Index := Scalar.indexCast c1_i32_1020
  let c1_i32_1021 : BitVec 32 := 1#32
  let v1394 : Index := Scalar.indexCast c1_i32_1021
  let c0_i32_348 : BitVec 32 := 0#32
  let c1_i32_350 : BitVec 32 := 1#32
  let arg15 : BitVec 32 := Scf.iv c0_i32_348 c1_i32_350 k0_t3
  let v1395 : Index := Scalar.indexCast arg15
  let c400_1022 : Index := 400#32
  ![1, 1, v1395.toNat, 400]
def k0_off757 (k0_t3 : Fin k0_t3_loop.trips) : Fin 4 → Nat :=
  let c1_i32_1023 : BitVec 32 := 1#32
  let v1399 : Index := Scalar.indexCast c1_i32_1023
  let c1_i32_1024 : BitVec 32 := 1#32
  let v1400 : Index := Scalar.indexCast c1_i32_1024
  let c0_i32_348 : BitVec 32 := 0#32
  let c1_i32_350 : BitVec 32 := 1#32
  let arg15 : BitVec 32 := Scf.iv c0_i32_348 c1_i32_350 k0_t3
  let v1401 : Index := Scalar.indexCast arg15
  let c416_1025 : Index := 416#32
  ![1, 1, v1401.toNat, 416]
def k0_off758 (k0_t3 : Fin k0_t3_loop.trips) : Fin 4 → Nat :=
  let c1_i32_1026 : BitVec 32 := 1#32
  let v1405 : Index := Scalar.indexCast c1_i32_1026
  let c1_i32_1027 : BitVec 32 := 1#32
  let v1406 : Index := Scalar.indexCast c1_i32_1027
  let c0_i32_348 : BitVec 32 := 0#32
  let c1_i32_350 : BitVec 32 := 1#32
  let arg15 : BitVec 32 := Scf.iv c0_i32_348 c1_i32_350 k0_t3
  let v1407 : Index := Scalar.indexCast arg15
  let c416_1028 : Index := 416#32
  ![1, 1, v1407.toNat, 416]
def k0_off759 (k0_t3 : Fin k0_t3_loop.trips) : Fin 4 → Nat :=
  let c1_i32_1029 : BitVec 32 := 1#32
  let v1411 : Index := Scalar.indexCast c1_i32_1029
  let c1_i32_1030 : BitVec 32 := 1#32
  let v1412 : Index := Scalar.indexCast c1_i32_1030
  let c0_i32_348 : BitVec 32 := 0#32
  let c1_i32_350 : BitVec 32 := 1#32
  let arg15 : BitVec 32 := Scf.iv c0_i32_348 c1_i32_350 k0_t3
  let v1413 : Index := Scalar.indexCast arg15
  let c432_1031 : Index := 432#32
  ![1, 1, v1413.toNat, 432]
def k0_off760 (k0_t3 : Fin k0_t3_loop.trips) : Fin 4 → Nat :=
  let c1_i32_1032 : BitVec 32 := 1#32
  let v1417 : Index := Scalar.indexCast c1_i32_1032
  let c1_i32_1033 : BitVec 32 := 1#32
  let v1418 : Index := Scalar.indexCast c1_i32_1033
  let c0_i32_348 : BitVec 32 := 0#32
  let c1_i32_350 : BitVec 32 := 1#32
  let arg15 : BitVec 32 := Scf.iv c0_i32_348 c1_i32_350 k0_t3
  let v1419 : Index := Scalar.indexCast arg15
  let c432_1034 : Index := 432#32
  ![1, 1, v1419.toNat, 432]
def k0_off761 (k0_t3 : Fin k0_t3_loop.trips) : Fin 4 → Nat :=
  let c1_i32_1035 : BitVec 32 := 1#32
  let v1423 : Index := Scalar.indexCast c1_i32_1035
  let c1_i32_1036 : BitVec 32 := 1#32
  let v1424 : Index := Scalar.indexCast c1_i32_1036
  let c0_i32_348 : BitVec 32 := 0#32
  let c1_i32_350 : BitVec 32 := 1#32
  let arg15 : BitVec 32 := Scf.iv c0_i32_348 c1_i32_350 k0_t3
  let v1425 : Index := Scalar.indexCast arg15
  let c448_1037 : Index := 448#32
  ![1, 1, v1425.toNat, 448]
def k0_off762 (k0_t3 : Fin k0_t3_loop.trips) : Fin 4 → Nat :=
  let c1_i32_1038 : BitVec 32 := 1#32
  let v1429 : Index := Scalar.indexCast c1_i32_1038
  let c1_i32_1039 : BitVec 32 := 1#32
  let v1430 : Index := Scalar.indexCast c1_i32_1039
  let c0_i32_348 : BitVec 32 := 0#32
  let c1_i32_350 : BitVec 32 := 1#32
  let arg15 : BitVec 32 := Scf.iv c0_i32_348 c1_i32_350 k0_t3
  let v1431 : Index := Scalar.indexCast arg15
  let c448_1040 : Index := 448#32
  ![1, 1, v1431.toNat, 448]
def k0_off763 (k0_t3 : Fin k0_t3_loop.trips) : Fin 4 → Nat :=
  let c1_i32_1041 : BitVec 32 := 1#32
  let v1435 : Index := Scalar.indexCast c1_i32_1041
  let c1_i32_1042 : BitVec 32 := 1#32
  let v1436 : Index := Scalar.indexCast c1_i32_1042
  let c0_i32_348 : BitVec 32 := 0#32
  let c1_i32_350 : BitVec 32 := 1#32
  let arg15 : BitVec 32 := Scf.iv c0_i32_348 c1_i32_350 k0_t3
  let v1437 : Index := Scalar.indexCast arg15
  let c464_1043 : Index := 464#32
  ![1, 1, v1437.toNat, 464]
def k0_off764 (k0_t3 : Fin k0_t3_loop.trips) : Fin 4 → Nat :=
  let c1_i32_1044 : BitVec 32 := 1#32
  let v1441 : Index := Scalar.indexCast c1_i32_1044
  let c1_i32_1045 : BitVec 32 := 1#32
  let v1442 : Index := Scalar.indexCast c1_i32_1045
  let c0_i32_348 : BitVec 32 := 0#32
  let c1_i32_350 : BitVec 32 := 1#32
  let arg15 : BitVec 32 := Scf.iv c0_i32_348 c1_i32_350 k0_t3
  let v1443 : Index := Scalar.indexCast arg15
  let c464_1046 : Index := 464#32
  ![1, 1, v1443.toNat, 464]
def k0_off765 (k0_t3 : Fin k0_t3_loop.trips) : Fin 4 → Nat :=
  let c1_i32_1047 : BitVec 32 := 1#32
  let v1447 : Index := Scalar.indexCast c1_i32_1047
  let c1_i32_1048 : BitVec 32 := 1#32
  let v1448 : Index := Scalar.indexCast c1_i32_1048
  let c0_i32_348 : BitVec 32 := 0#32
  let c1_i32_350 : BitVec 32 := 1#32
  let arg15 : BitVec 32 := Scf.iv c0_i32_348 c1_i32_350 k0_t3
  let v1449 : Index := Scalar.indexCast arg15
  let c480_1049 : Index := 480#32
  ![1, 1, v1449.toNat, 480]
def k0_off766 (k0_t3 : Fin k0_t3_loop.trips) : Fin 4 → Nat :=
  let c1_i32_1050 : BitVec 32 := 1#32
  let v1453 : Index := Scalar.indexCast c1_i32_1050
  let c1_i32_1051 : BitVec 32 := 1#32
  let v1454 : Index := Scalar.indexCast c1_i32_1051
  let c0_i32_348 : BitVec 32 := 0#32
  let c1_i32_350 : BitVec 32 := 1#32
  let arg15 : BitVec 32 := Scf.iv c0_i32_348 c1_i32_350 k0_t3
  let v1455 : Index := Scalar.indexCast arg15
  let c480_1052 : Index := 480#32
  ![1, 1, v1455.toNat, 480]
def k0_off767 (k0_t3 : Fin k0_t3_loop.trips) : Fin 4 → Nat :=
  let c1_i32_1053 : BitVec 32 := 1#32
  let v1459 : Index := Scalar.indexCast c1_i32_1053
  let c1_i32_1054 : BitVec 32 := 1#32
  let v1460 : Index := Scalar.indexCast c1_i32_1054
  let c0_i32_348 : BitVec 32 := 0#32
  let c1_i32_350 : BitVec 32 := 1#32
  let arg15 : BitVec 32 := Scf.iv c0_i32_348 c1_i32_350 k0_t3
  let v1461 : Index := Scalar.indexCast arg15
  let c496_1055 : Index := 496#32
  ![1, 1, v1461.toNat, 496]
def k0_off768 (k0_t3 : Fin k0_t3_loop.trips) : Fin 4 → Nat :=
  let c1_i32_1056 : BitVec 32 := 1#32
  let v1465 : Index := Scalar.indexCast c1_i32_1056
  let c1_i32_1057 : BitVec 32 := 1#32
  let v1466 : Index := Scalar.indexCast c1_i32_1057
  let c0_i32_348 : BitVec 32 := 0#32
  let c1_i32_350 : BitVec 32 := 1#32
  let arg15 : BitVec 32 := Scf.iv c0_i32_348 c1_i32_350 k0_t3
  let v1467 : Index := Scalar.indexCast arg15
  let c496_1058 : Index := 496#32
  ![1, 1, v1467.toNat, 496]
def k0_off769 (k0_t3 : Fin k0_t3_loop.trips) : Fin 4 → Nat :=
  let c1_i32_1059 : BitVec 32 := 1#32
  let v1471 : Index := Scalar.indexCast c1_i32_1059
  let c2_i32_1060 : BitVec 32 := 2#32
  let v1472 : Index := Scalar.indexCast c2_i32_1060
  let c0_i32_348 : BitVec 32 := 0#32
  let c1_i32_350 : BitVec 32 := 1#32
  let arg15 : BitVec 32 := Scf.iv c0_i32_348 c1_i32_350 k0_t3
  let v1473 : Index := Scalar.indexCast arg15
  let c0_1061 : Index := 0#32
  ![1, 2, v1473.toNat, 0]
def k0_off770 (k0_t3 : Fin k0_t3_loop.trips) : Fin 4 → Nat :=
  let c1_i32_1062 : BitVec 32 := 1#32
  let v1477 : Index := Scalar.indexCast c1_i32_1062
  let c2_i32_1063 : BitVec 32 := 2#32
  let v1478 : Index := Scalar.indexCast c2_i32_1063
  let c0_i32_348 : BitVec 32 := 0#32
  let c1_i32_350 : BitVec 32 := 1#32
  let arg15 : BitVec 32 := Scf.iv c0_i32_348 c1_i32_350 k0_t3
  let v1479 : Index := Scalar.indexCast arg15
  let c0_1064 : Index := 0#32
  ![1, 2, v1479.toNat, 0]
def k0_off771 (k0_t3 : Fin k0_t3_loop.trips) : Fin 4 → Nat :=
  let c1_i32_1065 : BitVec 32 := 1#32
  let v1483 : Index := Scalar.indexCast c1_i32_1065
  let c2_i32_1066 : BitVec 32 := 2#32
  let v1484 : Index := Scalar.indexCast c2_i32_1066
  let c0_i32_348 : BitVec 32 := 0#32
  let c1_i32_350 : BitVec 32 := 1#32
  let arg15 : BitVec 32 := Scf.iv c0_i32_348 c1_i32_350 k0_t3
  let v1485 : Index := Scalar.indexCast arg15
  let c16_1067 : Index := 16#32
  ![1, 2, v1485.toNat, 16]
def k0_off772 (k0_t3 : Fin k0_t3_loop.trips) : Fin 4 → Nat :=
  let c1_i32_1068 : BitVec 32 := 1#32
  let v1489 : Index := Scalar.indexCast c1_i32_1068
  let c2_i32_1069 : BitVec 32 := 2#32
  let v1490 : Index := Scalar.indexCast c2_i32_1069
  let c0_i32_348 : BitVec 32 := 0#32
  let c1_i32_350 : BitVec 32 := 1#32
  let arg15 : BitVec 32 := Scf.iv c0_i32_348 c1_i32_350 k0_t3
  let v1491 : Index := Scalar.indexCast arg15
  let c16_1070 : Index := 16#32
  ![1, 2, v1491.toNat, 16]
def k0_off773 (k0_t3 : Fin k0_t3_loop.trips) : Fin 4 → Nat :=
  let c1_i32_1071 : BitVec 32 := 1#32
  let v1495 : Index := Scalar.indexCast c1_i32_1071
  let c2_i32_1072 : BitVec 32 := 2#32
  let v1496 : Index := Scalar.indexCast c2_i32_1072
  let c0_i32_348 : BitVec 32 := 0#32
  let c1_i32_350 : BitVec 32 := 1#32
  let arg15 : BitVec 32 := Scf.iv c0_i32_348 c1_i32_350 k0_t3
  let v1497 : Index := Scalar.indexCast arg15
  let c32_1073 : Index := 32#32
  ![1, 2, v1497.toNat, 32]
def k0_off774 (k0_t3 : Fin k0_t3_loop.trips) : Fin 4 → Nat :=
  let c1_i32_1074 : BitVec 32 := 1#32
  let v1501 : Index := Scalar.indexCast c1_i32_1074
  let c2_i32_1075 : BitVec 32 := 2#32
  let v1502 : Index := Scalar.indexCast c2_i32_1075
  let c0_i32_348 : BitVec 32 := 0#32
  let c1_i32_350 : BitVec 32 := 1#32
  let arg15 : BitVec 32 := Scf.iv c0_i32_348 c1_i32_350 k0_t3
  let v1503 : Index := Scalar.indexCast arg15
  let c32_1076 : Index := 32#32
  ![1, 2, v1503.toNat, 32]
def k0_off775 (k0_t3 : Fin k0_t3_loop.trips) : Fin 4 → Nat :=
  let c1_i32_1077 : BitVec 32 := 1#32
  let v1507 : Index := Scalar.indexCast c1_i32_1077
  let c2_i32_1078 : BitVec 32 := 2#32
  let v1508 : Index := Scalar.indexCast c2_i32_1078
  let c0_i32_348 : BitVec 32 := 0#32
  let c1_i32_350 : BitVec 32 := 1#32
  let arg15 : BitVec 32 := Scf.iv c0_i32_348 c1_i32_350 k0_t3
  let v1509 : Index := Scalar.indexCast arg15
  let c48_1079 : Index := 48#32
  ![1, 2, v1509.toNat, 48]
def k0_off776 (k0_t3 : Fin k0_t3_loop.trips) : Fin 4 → Nat :=
  let c1_i32_1080 : BitVec 32 := 1#32
  let v1513 : Index := Scalar.indexCast c1_i32_1080
  let c2_i32_1081 : BitVec 32 := 2#32
  let v1514 : Index := Scalar.indexCast c2_i32_1081
  let c0_i32_348 : BitVec 32 := 0#32
  let c1_i32_350 : BitVec 32 := 1#32
  let arg15 : BitVec 32 := Scf.iv c0_i32_348 c1_i32_350 k0_t3
  let v1515 : Index := Scalar.indexCast arg15
  let c48_1082 : Index := 48#32
  ![1, 2, v1515.toNat, 48]
def k0_off777 (k0_t3 : Fin k0_t3_loop.trips) : Fin 4 → Nat :=
  let c1_i32_1083 : BitVec 32 := 1#32
  let v1519 : Index := Scalar.indexCast c1_i32_1083
  let c2_i32_1084 : BitVec 32 := 2#32
  let v1520 : Index := Scalar.indexCast c2_i32_1084
  let c0_i32_348 : BitVec 32 := 0#32
  let c1_i32_350 : BitVec 32 := 1#32
  let arg15 : BitVec 32 := Scf.iv c0_i32_348 c1_i32_350 k0_t3
  let v1521 : Index := Scalar.indexCast arg15
  let c64_1085 : Index := 64#32
  ![1, 2, v1521.toNat, 64]
def k0_off778 (k0_t3 : Fin k0_t3_loop.trips) : Fin 4 → Nat :=
  let c1_i32_1086 : BitVec 32 := 1#32
  let v1525 : Index := Scalar.indexCast c1_i32_1086
  let c2_i32_1087 : BitVec 32 := 2#32
  let v1526 : Index := Scalar.indexCast c2_i32_1087
  let c0_i32_348 : BitVec 32 := 0#32
  let c1_i32_350 : BitVec 32 := 1#32
  let arg15 : BitVec 32 := Scf.iv c0_i32_348 c1_i32_350 k0_t3
  let v1527 : Index := Scalar.indexCast arg15
  let c64_1088 : Index := 64#32
  ![1, 2, v1527.toNat, 64]
def k0_off779 (k0_t3 : Fin k0_t3_loop.trips) : Fin 4 → Nat :=
  let c1_i32_1089 : BitVec 32 := 1#32
  let v1531 : Index := Scalar.indexCast c1_i32_1089
  let c2_i32_1090 : BitVec 32 := 2#32
  let v1532 : Index := Scalar.indexCast c2_i32_1090
  let c0_i32_348 : BitVec 32 := 0#32
  let c1_i32_350 : BitVec 32 := 1#32
  let arg15 : BitVec 32 := Scf.iv c0_i32_348 c1_i32_350 k0_t3
  let v1533 : Index := Scalar.indexCast arg15
  let c80_1091 : Index := 80#32
  ![1, 2, v1533.toNat, 80]
def k0_off780 (k0_t3 : Fin k0_t3_loop.trips) : Fin 4 → Nat :=
  let c1_i32_1092 : BitVec 32 := 1#32
  let v1537 : Index := Scalar.indexCast c1_i32_1092
  let c2_i32_1093 : BitVec 32 := 2#32
  let v1538 : Index := Scalar.indexCast c2_i32_1093
  let c0_i32_348 : BitVec 32 := 0#32
  let c1_i32_350 : BitVec 32 := 1#32
  let arg15 : BitVec 32 := Scf.iv c0_i32_348 c1_i32_350 k0_t3
  let v1539 : Index := Scalar.indexCast arg15
  let c80_1094 : Index := 80#32
  ![1, 2, v1539.toNat, 80]
def k0_off781 (k0_t3 : Fin k0_t3_loop.trips) : Fin 4 → Nat :=
  let c1_i32_1095 : BitVec 32 := 1#32
  let v1543 : Index := Scalar.indexCast c1_i32_1095
  let c2_i32_1096 : BitVec 32 := 2#32
  let v1544 : Index := Scalar.indexCast c2_i32_1096
  let c0_i32_348 : BitVec 32 := 0#32
  let c1_i32_350 : BitVec 32 := 1#32
  let arg15 : BitVec 32 := Scf.iv c0_i32_348 c1_i32_350 k0_t3
  let v1545 : Index := Scalar.indexCast arg15
  let c96_1097 : Index := 96#32
  ![1, 2, v1545.toNat, 96]
def k0_off782 (k0_t3 : Fin k0_t3_loop.trips) : Fin 4 → Nat :=
  let c1_i32_1098 : BitVec 32 := 1#32
  let v1549 : Index := Scalar.indexCast c1_i32_1098
  let c2_i32_1099 : BitVec 32 := 2#32
  let v1550 : Index := Scalar.indexCast c2_i32_1099
  let c0_i32_348 : BitVec 32 := 0#32
  let c1_i32_350 : BitVec 32 := 1#32
  let arg15 : BitVec 32 := Scf.iv c0_i32_348 c1_i32_350 k0_t3
  let v1551 : Index := Scalar.indexCast arg15
  let c96_1100 : Index := 96#32
  ![1, 2, v1551.toNat, 96]
def k0_off783 (k0_t3 : Fin k0_t3_loop.trips) : Fin 4 → Nat :=
  let c1_i32_1101 : BitVec 32 := 1#32
  let v1555 : Index := Scalar.indexCast c1_i32_1101
  let c2_i32_1102 : BitVec 32 := 2#32
  let v1556 : Index := Scalar.indexCast c2_i32_1102
  let c0_i32_348 : BitVec 32 := 0#32
  let c1_i32_350 : BitVec 32 := 1#32
  let arg15 : BitVec 32 := Scf.iv c0_i32_348 c1_i32_350 k0_t3
  let v1557 : Index := Scalar.indexCast arg15
  let c112_1103 : Index := 112#32
  ![1, 2, v1557.toNat, 112]
def k0_off784 (k0_t3 : Fin k0_t3_loop.trips) : Fin 4 → Nat :=
  let c1_i32_1104 : BitVec 32 := 1#32
  let v1561 : Index := Scalar.indexCast c1_i32_1104
  let c2_i32_1105 : BitVec 32 := 2#32
  let v1562 : Index := Scalar.indexCast c2_i32_1105
  let c0_i32_348 : BitVec 32 := 0#32
  let c1_i32_350 : BitVec 32 := 1#32
  let arg15 : BitVec 32 := Scf.iv c0_i32_348 c1_i32_350 k0_t3
  let v1563 : Index := Scalar.indexCast arg15
  let c112_1106 : Index := 112#32
  ![1, 2, v1563.toNat, 112]
def k0_off785 (k0_t3 : Fin k0_t3_loop.trips) : Fin 4 → Nat :=
  let c1_i32_1107 : BitVec 32 := 1#32
  let v1567 : Index := Scalar.indexCast c1_i32_1107
  let c2_i32_1108 : BitVec 32 := 2#32
  let v1568 : Index := Scalar.indexCast c2_i32_1108
  let c0_i32_348 : BitVec 32 := 0#32
  let c1_i32_350 : BitVec 32 := 1#32
  let arg15 : BitVec 32 := Scf.iv c0_i32_348 c1_i32_350 k0_t3
  let v1569 : Index := Scalar.indexCast arg15
  let c128_1109 : Index := 128#32
  ![1, 2, v1569.toNat, 128]
def k0_off786 (k0_t3 : Fin k0_t3_loop.trips) : Fin 4 → Nat :=
  let c1_i32_1110 : BitVec 32 := 1#32
  let v1573 : Index := Scalar.indexCast c1_i32_1110
  let c2_i32_1111 : BitVec 32 := 2#32
  let v1574 : Index := Scalar.indexCast c2_i32_1111
  let c0_i32_348 : BitVec 32 := 0#32
  let c1_i32_350 : BitVec 32 := 1#32
  let arg15 : BitVec 32 := Scf.iv c0_i32_348 c1_i32_350 k0_t3
  let v1575 : Index := Scalar.indexCast arg15
  let c128_1112 : Index := 128#32
  ![1, 2, v1575.toNat, 128]
def k0_off787 (k0_t3 : Fin k0_t3_loop.trips) : Fin 4 → Nat :=
  let c1_i32_1113 : BitVec 32 := 1#32
  let v1579 : Index := Scalar.indexCast c1_i32_1113
  let c2_i32_1114 : BitVec 32 := 2#32
  let v1580 : Index := Scalar.indexCast c2_i32_1114
  let c0_i32_348 : BitVec 32 := 0#32
  let c1_i32_350 : BitVec 32 := 1#32
  let arg15 : BitVec 32 := Scf.iv c0_i32_348 c1_i32_350 k0_t3
  let v1581 : Index := Scalar.indexCast arg15
  let c144_1115 : Index := 144#32
  ![1, 2, v1581.toNat, 144]
def k0_off788 (k0_t3 : Fin k0_t3_loop.trips) : Fin 4 → Nat :=
  let c1_i32_1116 : BitVec 32 := 1#32
  let v1585 : Index := Scalar.indexCast c1_i32_1116
  let c2_i32_1117 : BitVec 32 := 2#32
  let v1586 : Index := Scalar.indexCast c2_i32_1117
  let c0_i32_348 : BitVec 32 := 0#32
  let c1_i32_350 : BitVec 32 := 1#32
  let arg15 : BitVec 32 := Scf.iv c0_i32_348 c1_i32_350 k0_t3
  let v1587 : Index := Scalar.indexCast arg15
  let c144_1118 : Index := 144#32
  ![1, 2, v1587.toNat, 144]
def k0_off789 (k0_t3 : Fin k0_t3_loop.trips) : Fin 4 → Nat :=
  let c1_i32_1119 : BitVec 32 := 1#32
  let v1591 : Index := Scalar.indexCast c1_i32_1119
  let c2_i32_1120 : BitVec 32 := 2#32
  let v1592 : Index := Scalar.indexCast c2_i32_1120
  let c0_i32_348 : BitVec 32 := 0#32
  let c1_i32_350 : BitVec 32 := 1#32
  let arg15 : BitVec 32 := Scf.iv c0_i32_348 c1_i32_350 k0_t3
  let v1593 : Index := Scalar.indexCast arg15
  let c160_1121 : Index := 160#32
  ![1, 2, v1593.toNat, 160]
def k0_off790 (k0_t3 : Fin k0_t3_loop.trips) : Fin 4 → Nat :=
  let c1_i32_1122 : BitVec 32 := 1#32
  let v1597 : Index := Scalar.indexCast c1_i32_1122
  let c2_i32_1123 : BitVec 32 := 2#32
  let v1598 : Index := Scalar.indexCast c2_i32_1123
  let c0_i32_348 : BitVec 32 := 0#32
  let c1_i32_350 : BitVec 32 := 1#32
  let arg15 : BitVec 32 := Scf.iv c0_i32_348 c1_i32_350 k0_t3
  let v1599 : Index := Scalar.indexCast arg15
  let c160_1124 : Index := 160#32
  ![1, 2, v1599.toNat, 160]
def k0_off791 (k0_t3 : Fin k0_t3_loop.trips) : Fin 4 → Nat :=
  let c1_i32_1125 : BitVec 32 := 1#32
  let v1603 : Index := Scalar.indexCast c1_i32_1125
  let c2_i32_1126 : BitVec 32 := 2#32
  let v1604 : Index := Scalar.indexCast c2_i32_1126
  let c0_i32_348 : BitVec 32 := 0#32
  let c1_i32_350 : BitVec 32 := 1#32
  let arg15 : BitVec 32 := Scf.iv c0_i32_348 c1_i32_350 k0_t3
  let v1605 : Index := Scalar.indexCast arg15
  let c176_1127 : Index := 176#32
  ![1, 2, v1605.toNat, 176]
def k0_off792 (k0_t3 : Fin k0_t3_loop.trips) : Fin 4 → Nat :=
  let c1_i32_1128 : BitVec 32 := 1#32
  let v1609 : Index := Scalar.indexCast c1_i32_1128
  let c2_i32_1129 : BitVec 32 := 2#32
  let v1610 : Index := Scalar.indexCast c2_i32_1129
  let c0_i32_348 : BitVec 32 := 0#32
  let c1_i32_350 : BitVec 32 := 1#32
  let arg15 : BitVec 32 := Scf.iv c0_i32_348 c1_i32_350 k0_t3
  let v1611 : Index := Scalar.indexCast arg15
  let c176_1130 : Index := 176#32
  ![1, 2, v1611.toNat, 176]
def k0_off793 (k0_t3 : Fin k0_t3_loop.trips) : Fin 4 → Nat :=
  let c1_i32_1131 : BitVec 32 := 1#32
  let v1615 : Index := Scalar.indexCast c1_i32_1131
  let c2_i32_1132 : BitVec 32 := 2#32
  let v1616 : Index := Scalar.indexCast c2_i32_1132
  let c0_i32_348 : BitVec 32 := 0#32
  let c1_i32_350 : BitVec 32 := 1#32
  let arg15 : BitVec 32 := Scf.iv c0_i32_348 c1_i32_350 k0_t3
  let v1617 : Index := Scalar.indexCast arg15
  let c192_1133 : Index := 192#32
  ![1, 2, v1617.toNat, 192]
def k0_off794 (k0_t3 : Fin k0_t3_loop.trips) : Fin 4 → Nat :=
  let c1_i32_1134 : BitVec 32 := 1#32
  let v1621 : Index := Scalar.indexCast c1_i32_1134
  let c2_i32_1135 : BitVec 32 := 2#32
  let v1622 : Index := Scalar.indexCast c2_i32_1135
  let c0_i32_348 : BitVec 32 := 0#32
  let c1_i32_350 : BitVec 32 := 1#32
  let arg15 : BitVec 32 := Scf.iv c0_i32_348 c1_i32_350 k0_t3
  let v1623 : Index := Scalar.indexCast arg15
  let c192_1136 : Index := 192#32
  ![1, 2, v1623.toNat, 192]
def k0_off795 (k0_t3 : Fin k0_t3_loop.trips) : Fin 4 → Nat :=
  let c1_i32_1137 : BitVec 32 := 1#32
  let v1627 : Index := Scalar.indexCast c1_i32_1137
  let c2_i32_1138 : BitVec 32 := 2#32
  let v1628 : Index := Scalar.indexCast c2_i32_1138
  let c0_i32_348 : BitVec 32 := 0#32
  let c1_i32_350 : BitVec 32 := 1#32
  let arg15 : BitVec 32 := Scf.iv c0_i32_348 c1_i32_350 k0_t3
  let v1629 : Index := Scalar.indexCast arg15
  let c208_1139 : Index := 208#32
  ![1, 2, v1629.toNat, 208]
def k0_off796 (k0_t3 : Fin k0_t3_loop.trips) : Fin 4 → Nat :=
  let c1_i32_1140 : BitVec 32 := 1#32
  let v1633 : Index := Scalar.indexCast c1_i32_1140
  let c2_i32_1141 : BitVec 32 := 2#32
  let v1634 : Index := Scalar.indexCast c2_i32_1141
  let c0_i32_348 : BitVec 32 := 0#32
  let c1_i32_350 : BitVec 32 := 1#32
  let arg15 : BitVec 32 := Scf.iv c0_i32_348 c1_i32_350 k0_t3
  let v1635 : Index := Scalar.indexCast arg15
  let c208_1142 : Index := 208#32
  ![1, 2, v1635.toNat, 208]
def k0_off797 (k0_t3 : Fin k0_t3_loop.trips) : Fin 4 → Nat :=
  let c1_i32_1143 : BitVec 32 := 1#32
  let v1639 : Index := Scalar.indexCast c1_i32_1143
  let c2_i32_1144 : BitVec 32 := 2#32
  let v1640 : Index := Scalar.indexCast c2_i32_1144
  let c0_i32_348 : BitVec 32 := 0#32
  let c1_i32_350 : BitVec 32 := 1#32
  let arg15 : BitVec 32 := Scf.iv c0_i32_348 c1_i32_350 k0_t3
  let v1641 : Index := Scalar.indexCast arg15
  let c224_1145 : Index := 224#32
  ![1, 2, v1641.toNat, 224]
def k0_off798 (k0_t3 : Fin k0_t3_loop.trips) : Fin 4 → Nat :=
  let c1_i32_1146 : BitVec 32 := 1#32
  let v1645 : Index := Scalar.indexCast c1_i32_1146
  let c2_i32_1147 : BitVec 32 := 2#32
  let v1646 : Index := Scalar.indexCast c2_i32_1147
  let c0_i32_348 : BitVec 32 := 0#32
  let c1_i32_350 : BitVec 32 := 1#32
  let arg15 : BitVec 32 := Scf.iv c0_i32_348 c1_i32_350 k0_t3
  let v1647 : Index := Scalar.indexCast arg15
  let c224_1148 : Index := 224#32
  ![1, 2, v1647.toNat, 224]
def k0_off799 (k0_t3 : Fin k0_t3_loop.trips) : Fin 4 → Nat :=
  let c1_i32_1149 : BitVec 32 := 1#32
  let v1651 : Index := Scalar.indexCast c1_i32_1149
  let c2_i32_1150 : BitVec 32 := 2#32
  let v1652 : Index := Scalar.indexCast c2_i32_1150
  let c0_i32_348 : BitVec 32 := 0#32
  let c1_i32_350 : BitVec 32 := 1#32
  let arg15 : BitVec 32 := Scf.iv c0_i32_348 c1_i32_350 k0_t3
  let v1653 : Index := Scalar.indexCast arg15
  let c240_1151 : Index := 240#32
  ![1, 2, v1653.toNat, 240]
def k0_off800 (k0_t3 : Fin k0_t3_loop.trips) : Fin 4 → Nat :=
  let c1_i32_1152 : BitVec 32 := 1#32
  let v1657 : Index := Scalar.indexCast c1_i32_1152
  let c2_i32_1153 : BitVec 32 := 2#32
  let v1658 : Index := Scalar.indexCast c2_i32_1153
  let c0_i32_348 : BitVec 32 := 0#32
  let c1_i32_350 : BitVec 32 := 1#32
  let arg15 : BitVec 32 := Scf.iv c0_i32_348 c1_i32_350 k0_t3
  let v1659 : Index := Scalar.indexCast arg15
  let c240_1154 : Index := 240#32
  ![1, 2, v1659.toNat, 240]
def k0_off801 (k0_t3 : Fin k0_t3_loop.trips) : Fin 4 → Nat :=
  let c1_i32_1155 : BitVec 32 := 1#32
  let v1663 : Index := Scalar.indexCast c1_i32_1155
  let c2_i32_1156 : BitVec 32 := 2#32
  let v1664 : Index := Scalar.indexCast c2_i32_1156
  let c0_i32_348 : BitVec 32 := 0#32
  let c1_i32_350 : BitVec 32 := 1#32
  let arg15 : BitVec 32 := Scf.iv c0_i32_348 c1_i32_350 k0_t3
  let v1665 : Index := Scalar.indexCast arg15
  let c256_1157 : Index := 256#32
  ![1, 2, v1665.toNat, 256]
def k0_off802 (k0_t3 : Fin k0_t3_loop.trips) : Fin 4 → Nat :=
  let c1_i32_1158 : BitVec 32 := 1#32
  let v1669 : Index := Scalar.indexCast c1_i32_1158
  let c2_i32_1159 : BitVec 32 := 2#32
  let v1670 : Index := Scalar.indexCast c2_i32_1159
  let c0_i32_348 : BitVec 32 := 0#32
  let c1_i32_350 : BitVec 32 := 1#32
  let arg15 : BitVec 32 := Scf.iv c0_i32_348 c1_i32_350 k0_t3
  let v1671 : Index := Scalar.indexCast arg15
  let c256_1160 : Index := 256#32
  ![1, 2, v1671.toNat, 256]
def k0_off803 (k0_t3 : Fin k0_t3_loop.trips) : Fin 4 → Nat :=
  let c1_i32_1161 : BitVec 32 := 1#32
  let v1675 : Index := Scalar.indexCast c1_i32_1161
  let c2_i32_1162 : BitVec 32 := 2#32
  let v1676 : Index := Scalar.indexCast c2_i32_1162
  let c0_i32_348 : BitVec 32 := 0#32
  let c1_i32_350 : BitVec 32 := 1#32
  let arg15 : BitVec 32 := Scf.iv c0_i32_348 c1_i32_350 k0_t3
  let v1677 : Index := Scalar.indexCast arg15
  let c272_1163 : Index := 272#32
  ![1, 2, v1677.toNat, 272]
def k0_off804 (k0_t3 : Fin k0_t3_loop.trips) : Fin 4 → Nat :=
  let c1_i32_1164 : BitVec 32 := 1#32
  let v1681 : Index := Scalar.indexCast c1_i32_1164
  let c2_i32_1165 : BitVec 32 := 2#32
  let v1682 : Index := Scalar.indexCast c2_i32_1165
  let c0_i32_348 : BitVec 32 := 0#32
  let c1_i32_350 : BitVec 32 := 1#32
  let arg15 : BitVec 32 := Scf.iv c0_i32_348 c1_i32_350 k0_t3
  let v1683 : Index := Scalar.indexCast arg15
  let c272_1166 : Index := 272#32
  ![1, 2, v1683.toNat, 272]
def k0_off805 (k0_t3 : Fin k0_t3_loop.trips) : Fin 4 → Nat :=
  let c1_i32_1167 : BitVec 32 := 1#32
  let v1687 : Index := Scalar.indexCast c1_i32_1167
  let c2_i32_1168 : BitVec 32 := 2#32
  let v1688 : Index := Scalar.indexCast c2_i32_1168
  let c0_i32_348 : BitVec 32 := 0#32
  let c1_i32_350 : BitVec 32 := 1#32
  let arg15 : BitVec 32 := Scf.iv c0_i32_348 c1_i32_350 k0_t3
  let v1689 : Index := Scalar.indexCast arg15
  let c288_1169 : Index := 288#32
  ![1, 2, v1689.toNat, 288]
def k0_off806 (k0_t3 : Fin k0_t3_loop.trips) : Fin 4 → Nat :=
  let c1_i32_1170 : BitVec 32 := 1#32
  let v1693 : Index := Scalar.indexCast c1_i32_1170
  let c2_i32_1171 : BitVec 32 := 2#32
  let v1694 : Index := Scalar.indexCast c2_i32_1171
  let c0_i32_348 : BitVec 32 := 0#32
  let c1_i32_350 : BitVec 32 := 1#32
  let arg15 : BitVec 32 := Scf.iv c0_i32_348 c1_i32_350 k0_t3
  let v1695 : Index := Scalar.indexCast arg15
  let c288_1172 : Index := 288#32
  ![1, 2, v1695.toNat, 288]
def k0_off807 (k0_t3 : Fin k0_t3_loop.trips) : Fin 4 → Nat :=
  let c1_i32_1173 : BitVec 32 := 1#32
  let v1699 : Index := Scalar.indexCast c1_i32_1173
  let c2_i32_1174 : BitVec 32 := 2#32
  let v1700 : Index := Scalar.indexCast c2_i32_1174
  let c0_i32_348 : BitVec 32 := 0#32
  let c1_i32_350 : BitVec 32 := 1#32
  let arg15 : BitVec 32 := Scf.iv c0_i32_348 c1_i32_350 k0_t3
  let v1701 : Index := Scalar.indexCast arg15
  let c304_1175 : Index := 304#32
  ![1, 2, v1701.toNat, 304]
def k0_off808 (k0_t3 : Fin k0_t3_loop.trips) : Fin 4 → Nat :=
  let c1_i32_1176 : BitVec 32 := 1#32
  let v1705 : Index := Scalar.indexCast c1_i32_1176
  let c2_i32_1177 : BitVec 32 := 2#32
  let v1706 : Index := Scalar.indexCast c2_i32_1177
  let c0_i32_348 : BitVec 32 := 0#32
  let c1_i32_350 : BitVec 32 := 1#32
  let arg15 : BitVec 32 := Scf.iv c0_i32_348 c1_i32_350 k0_t3
  let v1707 : Index := Scalar.indexCast arg15
  let c304_1178 : Index := 304#32
  ![1, 2, v1707.toNat, 304]
def k0_off809 (k0_t3 : Fin k0_t3_loop.trips) : Fin 4 → Nat :=
  let c1_i32_1179 : BitVec 32 := 1#32
  let v1711 : Index := Scalar.indexCast c1_i32_1179
  let c2_i32_1180 : BitVec 32 := 2#32
  let v1712 : Index := Scalar.indexCast c2_i32_1180
  let c0_i32_348 : BitVec 32 := 0#32
  let c1_i32_350 : BitVec 32 := 1#32
  let arg15 : BitVec 32 := Scf.iv c0_i32_348 c1_i32_350 k0_t3
  let v1713 : Index := Scalar.indexCast arg15
  let c320_1181 : Index := 320#32
  ![1, 2, v1713.toNat, 320]
def k0_off810 (k0_t3 : Fin k0_t3_loop.trips) : Fin 4 → Nat :=
  let c1_i32_1182 : BitVec 32 := 1#32
  let v1717 : Index := Scalar.indexCast c1_i32_1182
  let c2_i32_1183 : BitVec 32 := 2#32
  let v1718 : Index := Scalar.indexCast c2_i32_1183
  let c0_i32_348 : BitVec 32 := 0#32
  let c1_i32_350 : BitVec 32 := 1#32
  let arg15 : BitVec 32 := Scf.iv c0_i32_348 c1_i32_350 k0_t3
  let v1719 : Index := Scalar.indexCast arg15
  let c320_1184 : Index := 320#32
  ![1, 2, v1719.toNat, 320]
def k0_off811 (k0_t3 : Fin k0_t3_loop.trips) : Fin 4 → Nat :=
  let c1_i32_1185 : BitVec 32 := 1#32
  let v1723 : Index := Scalar.indexCast c1_i32_1185
  let c2_i32_1186 : BitVec 32 := 2#32
  let v1724 : Index := Scalar.indexCast c2_i32_1186
  let c0_i32_348 : BitVec 32 := 0#32
  let c1_i32_350 : BitVec 32 := 1#32
  let arg15 : BitVec 32 := Scf.iv c0_i32_348 c1_i32_350 k0_t3
  let v1725 : Index := Scalar.indexCast arg15
  let c336_1187 : Index := 336#32
  ![1, 2, v1725.toNat, 336]
def k0_off812 (k0_t3 : Fin k0_t3_loop.trips) : Fin 4 → Nat :=
  let c1_i32_1188 : BitVec 32 := 1#32
  let v1729 : Index := Scalar.indexCast c1_i32_1188
  let c2_i32_1189 : BitVec 32 := 2#32
  let v1730 : Index := Scalar.indexCast c2_i32_1189
  let c0_i32_348 : BitVec 32 := 0#32
  let c1_i32_350 : BitVec 32 := 1#32
  let arg15 : BitVec 32 := Scf.iv c0_i32_348 c1_i32_350 k0_t3
  let v1731 : Index := Scalar.indexCast arg15
  let c336_1190 : Index := 336#32
  ![1, 2, v1731.toNat, 336]
def k0_off813 (k0_t3 : Fin k0_t3_loop.trips) : Fin 4 → Nat :=
  let c1_i32_1191 : BitVec 32 := 1#32
  let v1735 : Index := Scalar.indexCast c1_i32_1191
  let c2_i32_1192 : BitVec 32 := 2#32
  let v1736 : Index := Scalar.indexCast c2_i32_1192
  let c0_i32_348 : BitVec 32 := 0#32
  let c1_i32_350 : BitVec 32 := 1#32
  let arg15 : BitVec 32 := Scf.iv c0_i32_348 c1_i32_350 k0_t3
  let v1737 : Index := Scalar.indexCast arg15
  let c352_1193 : Index := 352#32
  ![1, 2, v1737.toNat, 352]
def k0_off814 (k0_t3 : Fin k0_t3_loop.trips) : Fin 4 → Nat :=
  let c1_i32_1194 : BitVec 32 := 1#32
  let v1741 : Index := Scalar.indexCast c1_i32_1194
  let c2_i32_1195 : BitVec 32 := 2#32
  let v1742 : Index := Scalar.indexCast c2_i32_1195
  let c0_i32_348 : BitVec 32 := 0#32
  let c1_i32_350 : BitVec 32 := 1#32
  let arg15 : BitVec 32 := Scf.iv c0_i32_348 c1_i32_350 k0_t3
  let v1743 : Index := Scalar.indexCast arg15
  let c352_1196 : Index := 352#32
  ![1, 2, v1743.toNat, 352]
def k0_off815 (k0_t3 : Fin k0_t3_loop.trips) : Fin 4 → Nat :=
  let c1_i32_1197 : BitVec 32 := 1#32
  let v1747 : Index := Scalar.indexCast c1_i32_1197
  let c2_i32_1198 : BitVec 32 := 2#32
  let v1748 : Index := Scalar.indexCast c2_i32_1198
  let c0_i32_348 : BitVec 32 := 0#32
  let c1_i32_350 : BitVec 32 := 1#32
  let arg15 : BitVec 32 := Scf.iv c0_i32_348 c1_i32_350 k0_t3
  let v1749 : Index := Scalar.indexCast arg15
  let c368_1199 : Index := 368#32
  ![1, 2, v1749.toNat, 368]
def k0_off816 (k0_t3 : Fin k0_t3_loop.trips) : Fin 4 → Nat :=
  let c1_i32_1200 : BitVec 32 := 1#32
  let v1753 : Index := Scalar.indexCast c1_i32_1200
  let c2_i32_1201 : BitVec 32 := 2#32
  let v1754 : Index := Scalar.indexCast c2_i32_1201
  let c0_i32_348 : BitVec 32 := 0#32
  let c1_i32_350 : BitVec 32 := 1#32
  let arg15 : BitVec 32 := Scf.iv c0_i32_348 c1_i32_350 k0_t3
  let v1755 : Index := Scalar.indexCast arg15
  let c368_1202 : Index := 368#32
  ![1, 2, v1755.toNat, 368]
def k0_off817 (k0_t3 : Fin k0_t3_loop.trips) : Fin 4 → Nat :=
  let c1_i32_1203 : BitVec 32 := 1#32
  let v1759 : Index := Scalar.indexCast c1_i32_1203
  let c2_i32_1204 : BitVec 32 := 2#32
  let v1760 : Index := Scalar.indexCast c2_i32_1204
  let c0_i32_348 : BitVec 32 := 0#32
  let c1_i32_350 : BitVec 32 := 1#32
  let arg15 : BitVec 32 := Scf.iv c0_i32_348 c1_i32_350 k0_t3
  let v1761 : Index := Scalar.indexCast arg15
  let c384_1205 : Index := 384#32
  ![1, 2, v1761.toNat, 384]
def k0_off818 (k0_t3 : Fin k0_t3_loop.trips) : Fin 4 → Nat :=
  let c1_i32_1206 : BitVec 32 := 1#32
  let v1765 : Index := Scalar.indexCast c1_i32_1206
  let c2_i32_1207 : BitVec 32 := 2#32
  let v1766 : Index := Scalar.indexCast c2_i32_1207
  let c0_i32_348 : BitVec 32 := 0#32
  let c1_i32_350 : BitVec 32 := 1#32
  let arg15 : BitVec 32 := Scf.iv c0_i32_348 c1_i32_350 k0_t3
  let v1767 : Index := Scalar.indexCast arg15
  let c384_1208 : Index := 384#32
  ![1, 2, v1767.toNat, 384]
def k0_off819 (k0_t3 : Fin k0_t3_loop.trips) : Fin 4 → Nat :=
  let c1_i32_1209 : BitVec 32 := 1#32
  let v1771 : Index := Scalar.indexCast c1_i32_1209
  let c2_i32_1210 : BitVec 32 := 2#32
  let v1772 : Index := Scalar.indexCast c2_i32_1210
  let c0_i32_348 : BitVec 32 := 0#32
  let c1_i32_350 : BitVec 32 := 1#32
  let arg15 : BitVec 32 := Scf.iv c0_i32_348 c1_i32_350 k0_t3
  let v1773 : Index := Scalar.indexCast arg15
  let c400_1211 : Index := 400#32
  ![1, 2, v1773.toNat, 400]
def k0_off820 (k0_t3 : Fin k0_t3_loop.trips) : Fin 4 → Nat :=
  let c1_i32_1212 : BitVec 32 := 1#32
  let v1777 : Index := Scalar.indexCast c1_i32_1212
  let c2_i32_1213 : BitVec 32 := 2#32
  let v1778 : Index := Scalar.indexCast c2_i32_1213
  let c0_i32_348 : BitVec 32 := 0#32
  let c1_i32_350 : BitVec 32 := 1#32
  let arg15 : BitVec 32 := Scf.iv c0_i32_348 c1_i32_350 k0_t3
  let v1779 : Index := Scalar.indexCast arg15
  let c400_1214 : Index := 400#32
  ![1, 2, v1779.toNat, 400]
def k0_off821 (k0_t3 : Fin k0_t3_loop.trips) : Fin 4 → Nat :=
  let c1_i32_1215 : BitVec 32 := 1#32
  let v1783 : Index := Scalar.indexCast c1_i32_1215
  let c2_i32_1216 : BitVec 32 := 2#32
  let v1784 : Index := Scalar.indexCast c2_i32_1216
  let c0_i32_348 : BitVec 32 := 0#32
  let c1_i32_350 : BitVec 32 := 1#32
  let arg15 : BitVec 32 := Scf.iv c0_i32_348 c1_i32_350 k0_t3
  let v1785 : Index := Scalar.indexCast arg15
  let c416_1217 : Index := 416#32
  ![1, 2, v1785.toNat, 416]
def k0_off822 (k0_t3 : Fin k0_t3_loop.trips) : Fin 4 → Nat :=
  let c1_i32_1218 : BitVec 32 := 1#32
  let v1789 : Index := Scalar.indexCast c1_i32_1218
  let c2_i32_1219 : BitVec 32 := 2#32
  let v1790 : Index := Scalar.indexCast c2_i32_1219
  let c0_i32_348 : BitVec 32 := 0#32
  let c1_i32_350 : BitVec 32 := 1#32
  let arg15 : BitVec 32 := Scf.iv c0_i32_348 c1_i32_350 k0_t3
  let v1791 : Index := Scalar.indexCast arg15
  let c416_1220 : Index := 416#32
  ![1, 2, v1791.toNat, 416]
def k0_off823 (k0_t3 : Fin k0_t3_loop.trips) : Fin 4 → Nat :=
  let c1_i32_1221 : BitVec 32 := 1#32
  let v1795 : Index := Scalar.indexCast c1_i32_1221
  let c2_i32_1222 : BitVec 32 := 2#32
  let v1796 : Index := Scalar.indexCast c2_i32_1222
  let c0_i32_348 : BitVec 32 := 0#32
  let c1_i32_350 : BitVec 32 := 1#32
  let arg15 : BitVec 32 := Scf.iv c0_i32_348 c1_i32_350 k0_t3
  let v1797 : Index := Scalar.indexCast arg15
  let c432_1223 : Index := 432#32
  ![1, 2, v1797.toNat, 432]
def k0_off824 (k0_t3 : Fin k0_t3_loop.trips) : Fin 4 → Nat :=
  let c1_i32_1224 : BitVec 32 := 1#32
  let v1801 : Index := Scalar.indexCast c1_i32_1224
  let c2_i32_1225 : BitVec 32 := 2#32
  let v1802 : Index := Scalar.indexCast c2_i32_1225
  let c0_i32_348 : BitVec 32 := 0#32
  let c1_i32_350 : BitVec 32 := 1#32
  let arg15 : BitVec 32 := Scf.iv c0_i32_348 c1_i32_350 k0_t3
  let v1803 : Index := Scalar.indexCast arg15
  let c432_1226 : Index := 432#32
  ![1, 2, v1803.toNat, 432]
def k0_off825 (k0_t3 : Fin k0_t3_loop.trips) : Fin 4 → Nat :=
  let c1_i32_1227 : BitVec 32 := 1#32
  let v1807 : Index := Scalar.indexCast c1_i32_1227
  let c2_i32_1228 : BitVec 32 := 2#32
  let v1808 : Index := Scalar.indexCast c2_i32_1228
  let c0_i32_348 : BitVec 32 := 0#32
  let c1_i32_350 : BitVec 32 := 1#32
  let arg15 : BitVec 32 := Scf.iv c0_i32_348 c1_i32_350 k0_t3
  let v1809 : Index := Scalar.indexCast arg15
  let c448_1229 : Index := 448#32
  ![1, 2, v1809.toNat, 448]
def k0_off826 (k0_t3 : Fin k0_t3_loop.trips) : Fin 4 → Nat :=
  let c1_i32_1230 : BitVec 32 := 1#32
  let v1813 : Index := Scalar.indexCast c1_i32_1230
  let c2_i32_1231 : BitVec 32 := 2#32
  let v1814 : Index := Scalar.indexCast c2_i32_1231
  let c0_i32_348 : BitVec 32 := 0#32
  let c1_i32_350 : BitVec 32 := 1#32
  let arg15 : BitVec 32 := Scf.iv c0_i32_348 c1_i32_350 k0_t3
  let v1815 : Index := Scalar.indexCast arg15
  let c448_1232 : Index := 448#32
  ![1, 2, v1815.toNat, 448]
def k0_off827 (k0_t3 : Fin k0_t3_loop.trips) : Fin 4 → Nat :=
  let c1_i32_1233 : BitVec 32 := 1#32
  let v1819 : Index := Scalar.indexCast c1_i32_1233
  let c2_i32_1234 : BitVec 32 := 2#32
  let v1820 : Index := Scalar.indexCast c2_i32_1234
  let c0_i32_348 : BitVec 32 := 0#32
  let c1_i32_350 : BitVec 32 := 1#32
  let arg15 : BitVec 32 := Scf.iv c0_i32_348 c1_i32_350 k0_t3
  let v1821 : Index := Scalar.indexCast arg15
  let c464_1235 : Index := 464#32
  ![1, 2, v1821.toNat, 464]
def k0_off828 (k0_t3 : Fin k0_t3_loop.trips) : Fin 4 → Nat :=
  let c1_i32_1236 : BitVec 32 := 1#32
  let v1825 : Index := Scalar.indexCast c1_i32_1236
  let c2_i32_1237 : BitVec 32 := 2#32
  let v1826 : Index := Scalar.indexCast c2_i32_1237
  let c0_i32_348 : BitVec 32 := 0#32
  let c1_i32_350 : BitVec 32 := 1#32
  let arg15 : BitVec 32 := Scf.iv c0_i32_348 c1_i32_350 k0_t3
  let v1827 : Index := Scalar.indexCast arg15
  let c464_1238 : Index := 464#32
  ![1, 2, v1827.toNat, 464]
def k0_off829 (k0_t3 : Fin k0_t3_loop.trips) : Fin 4 → Nat :=
  let c1_i32_1239 : BitVec 32 := 1#32
  let v1831 : Index := Scalar.indexCast c1_i32_1239
  let c2_i32_1240 : BitVec 32 := 2#32
  let v1832 : Index := Scalar.indexCast c2_i32_1240
  let c0_i32_348 : BitVec 32 := 0#32
  let c1_i32_350 : BitVec 32 := 1#32
  let arg15 : BitVec 32 := Scf.iv c0_i32_348 c1_i32_350 k0_t3
  let v1833 : Index := Scalar.indexCast arg15
  let c480_1241 : Index := 480#32
  ![1, 2, v1833.toNat, 480]
def k0_off830 (k0_t3 : Fin k0_t3_loop.trips) : Fin 4 → Nat :=
  let c1_i32_1242 : BitVec 32 := 1#32
  let v1837 : Index := Scalar.indexCast c1_i32_1242
  let c2_i32_1243 : BitVec 32 := 2#32
  let v1838 : Index := Scalar.indexCast c2_i32_1243
  let c0_i32_348 : BitVec 32 := 0#32
  let c1_i32_350 : BitVec 32 := 1#32
  let arg15 : BitVec 32 := Scf.iv c0_i32_348 c1_i32_350 k0_t3
  let v1839 : Index := Scalar.indexCast arg15
  let c480_1244 : Index := 480#32
  ![1, 2, v1839.toNat, 480]
def k0_off831 (k0_t3 : Fin k0_t3_loop.trips) : Fin 4 → Nat :=
  let c1_i32_1245 : BitVec 32 := 1#32
  let v1843 : Index := Scalar.indexCast c1_i32_1245
  let c2_i32_1246 : BitVec 32 := 2#32
  let v1844 : Index := Scalar.indexCast c2_i32_1246
  let c0_i32_348 : BitVec 32 := 0#32
  let c1_i32_350 : BitVec 32 := 1#32
  let arg15 : BitVec 32 := Scf.iv c0_i32_348 c1_i32_350 k0_t3
  let v1845 : Index := Scalar.indexCast arg15
  let c496_1247 : Index := 496#32
  ![1, 2, v1845.toNat, 496]
def k0_off832 (k0_t3 : Fin k0_t3_loop.trips) : Fin 4 → Nat :=
  let c1_i32_1248 : BitVec 32 := 1#32
  let v1849 : Index := Scalar.indexCast c1_i32_1248
  let c2_i32_1249 : BitVec 32 := 2#32
  let v1850 : Index := Scalar.indexCast c2_i32_1249
  let c0_i32_348 : BitVec 32 := 0#32
  let c1_i32_350 : BitVec 32 := 1#32
  let arg15 : BitVec 32 := Scf.iv c0_i32_348 c1_i32_350 k0_t3
  let v1851 : Index := Scalar.indexCast arg15
  let c496_1250 : Index := 496#32
  ![1, 2, v1851.toNat, 496]
def k0_off833 (k0_t3 : Fin k0_t3_loop.trips) : Fin 4 → Nat :=
  let c1_i32_1251 : BitVec 32 := 1#32
  let v1855 : Index := Scalar.indexCast c1_i32_1251
  let c3_i32_1252 : BitVec 32 := 3#32
  let v1856 : Index := Scalar.indexCast c3_i32_1252
  let c0_i32_348 : BitVec 32 := 0#32
  let c1_i32_350 : BitVec 32 := 1#32
  let arg15 : BitVec 32 := Scf.iv c0_i32_348 c1_i32_350 k0_t3
  let v1857 : Index := Scalar.indexCast arg15
  let c0_1253 : Index := 0#32
  ![1, 3, v1857.toNat, 0]
def k0_off834 (k0_t3 : Fin k0_t3_loop.trips) : Fin 4 → Nat :=
  let c1_i32_1254 : BitVec 32 := 1#32
  let v1861 : Index := Scalar.indexCast c1_i32_1254
  let c3_i32_1255 : BitVec 32 := 3#32
  let v1862 : Index := Scalar.indexCast c3_i32_1255
  let c0_i32_348 : BitVec 32 := 0#32
  let c1_i32_350 : BitVec 32 := 1#32
  let arg15 : BitVec 32 := Scf.iv c0_i32_348 c1_i32_350 k0_t3
  let v1863 : Index := Scalar.indexCast arg15
  let c0_1256 : Index := 0#32
  ![1, 3, v1863.toNat, 0]
def k0_off835 (k0_t3 : Fin k0_t3_loop.trips) : Fin 4 → Nat :=
  let c1_i32_1257 : BitVec 32 := 1#32
  let v1867 : Index := Scalar.indexCast c1_i32_1257
  let c3_i32_1258 : BitVec 32 := 3#32
  let v1868 : Index := Scalar.indexCast c3_i32_1258
  let c0_i32_348 : BitVec 32 := 0#32
  let c1_i32_350 : BitVec 32 := 1#32
  let arg15 : BitVec 32 := Scf.iv c0_i32_348 c1_i32_350 k0_t3
  let v1869 : Index := Scalar.indexCast arg15
  let c16_1259 : Index := 16#32
  ![1, 3, v1869.toNat, 16]
def k0_off836 (k0_t3 : Fin k0_t3_loop.trips) : Fin 4 → Nat :=
  let c1_i32_1260 : BitVec 32 := 1#32
  let v1873 : Index := Scalar.indexCast c1_i32_1260
  let c3_i32_1261 : BitVec 32 := 3#32
  let v1874 : Index := Scalar.indexCast c3_i32_1261
  let c0_i32_348 : BitVec 32 := 0#32
  let c1_i32_350 : BitVec 32 := 1#32
  let arg15 : BitVec 32 := Scf.iv c0_i32_348 c1_i32_350 k0_t3
  let v1875 : Index := Scalar.indexCast arg15
  let c16_1262 : Index := 16#32
  ![1, 3, v1875.toNat, 16]
def k0_off837 (k0_t3 : Fin k0_t3_loop.trips) : Fin 4 → Nat :=
  let c1_i32_1263 : BitVec 32 := 1#32
  let v1879 : Index := Scalar.indexCast c1_i32_1263
  let c3_i32_1264 : BitVec 32 := 3#32
  let v1880 : Index := Scalar.indexCast c3_i32_1264
  let c0_i32_348 : BitVec 32 := 0#32
  let c1_i32_350 : BitVec 32 := 1#32
  let arg15 : BitVec 32 := Scf.iv c0_i32_348 c1_i32_350 k0_t3
  let v1881 : Index := Scalar.indexCast arg15
  let c32_1265 : Index := 32#32
  ![1, 3, v1881.toNat, 32]
def k0_off838 (k0_t3 : Fin k0_t3_loop.trips) : Fin 4 → Nat :=
  let c1_i32_1266 : BitVec 32 := 1#32
  let v1885 : Index := Scalar.indexCast c1_i32_1266
  let c3_i32_1267 : BitVec 32 := 3#32
  let v1886 : Index := Scalar.indexCast c3_i32_1267
  let c0_i32_348 : BitVec 32 := 0#32
  let c1_i32_350 : BitVec 32 := 1#32
  let arg15 : BitVec 32 := Scf.iv c0_i32_348 c1_i32_350 k0_t3
  let v1887 : Index := Scalar.indexCast arg15
  let c32_1268 : Index := 32#32
  ![1, 3, v1887.toNat, 32]
def k0_off839 (k0_t3 : Fin k0_t3_loop.trips) : Fin 4 → Nat :=
  let c1_i32_1269 : BitVec 32 := 1#32
  let v1891 : Index := Scalar.indexCast c1_i32_1269
  let c3_i32_1270 : BitVec 32 := 3#32
  let v1892 : Index := Scalar.indexCast c3_i32_1270
  let c0_i32_348 : BitVec 32 := 0#32
  let c1_i32_350 : BitVec 32 := 1#32
  let arg15 : BitVec 32 := Scf.iv c0_i32_348 c1_i32_350 k0_t3
  let v1893 : Index := Scalar.indexCast arg15
  let c48_1271 : Index := 48#32
  ![1, 3, v1893.toNat, 48]
def k0_off840 (k0_t3 : Fin k0_t3_loop.trips) : Fin 4 → Nat :=
  let c1_i32_1272 : BitVec 32 := 1#32
  let v1897 : Index := Scalar.indexCast c1_i32_1272
  let c3_i32_1273 : BitVec 32 := 3#32
  let v1898 : Index := Scalar.indexCast c3_i32_1273
  let c0_i32_348 : BitVec 32 := 0#32
  let c1_i32_350 : BitVec 32 := 1#32
  let arg15 : BitVec 32 := Scf.iv c0_i32_348 c1_i32_350 k0_t3
  let v1899 : Index := Scalar.indexCast arg15
  let c48_1274 : Index := 48#32
  ![1, 3, v1899.toNat, 48]
def k0_off841 (k0_t3 : Fin k0_t3_loop.trips) : Fin 4 → Nat :=
  let c1_i32_1275 : BitVec 32 := 1#32
  let v1903 : Index := Scalar.indexCast c1_i32_1275
  let c3_i32_1276 : BitVec 32 := 3#32
  let v1904 : Index := Scalar.indexCast c3_i32_1276
  let c0_i32_348 : BitVec 32 := 0#32
  let c1_i32_350 : BitVec 32 := 1#32
  let arg15 : BitVec 32 := Scf.iv c0_i32_348 c1_i32_350 k0_t3
  let v1905 : Index := Scalar.indexCast arg15
  let c64_1277 : Index := 64#32
  ![1, 3, v1905.toNat, 64]
def k0_off842 (k0_t3 : Fin k0_t3_loop.trips) : Fin 4 → Nat :=
  let c1_i32_1278 : BitVec 32 := 1#32
  let v1909 : Index := Scalar.indexCast c1_i32_1278
  let c3_i32_1279 : BitVec 32 := 3#32
  let v1910 : Index := Scalar.indexCast c3_i32_1279
  let c0_i32_348 : BitVec 32 := 0#32
  let c1_i32_350 : BitVec 32 := 1#32
  let arg15 : BitVec 32 := Scf.iv c0_i32_348 c1_i32_350 k0_t3
  let v1911 : Index := Scalar.indexCast arg15
  let c64_1280 : Index := 64#32
  ![1, 3, v1911.toNat, 64]
def k0_off843 (k0_t3 : Fin k0_t3_loop.trips) : Fin 4 → Nat :=
  let c1_i32_1281 : BitVec 32 := 1#32
  let v1915 : Index := Scalar.indexCast c1_i32_1281
  let c3_i32_1282 : BitVec 32 := 3#32
  let v1916 : Index := Scalar.indexCast c3_i32_1282
  let c0_i32_348 : BitVec 32 := 0#32
  let c1_i32_350 : BitVec 32 := 1#32
  let arg15 : BitVec 32 := Scf.iv c0_i32_348 c1_i32_350 k0_t3
  let v1917 : Index := Scalar.indexCast arg15
  let c80_1283 : Index := 80#32
  ![1, 3, v1917.toNat, 80]
def k0_off844 (k0_t3 : Fin k0_t3_loop.trips) : Fin 4 → Nat :=
  let c1_i32_1284 : BitVec 32 := 1#32
  let v1921 : Index := Scalar.indexCast c1_i32_1284
  let c3_i32_1285 : BitVec 32 := 3#32
  let v1922 : Index := Scalar.indexCast c3_i32_1285
  let c0_i32_348 : BitVec 32 := 0#32
  let c1_i32_350 : BitVec 32 := 1#32
  let arg15 : BitVec 32 := Scf.iv c0_i32_348 c1_i32_350 k0_t3
  let v1923 : Index := Scalar.indexCast arg15
  let c80_1286 : Index := 80#32
  ![1, 3, v1923.toNat, 80]
def k0_off845 (k0_t3 : Fin k0_t3_loop.trips) : Fin 4 → Nat :=
  let c1_i32_1287 : BitVec 32 := 1#32
  let v1927 : Index := Scalar.indexCast c1_i32_1287
  let c3_i32_1288 : BitVec 32 := 3#32
  let v1928 : Index := Scalar.indexCast c3_i32_1288
  let c0_i32_348 : BitVec 32 := 0#32
  let c1_i32_350 : BitVec 32 := 1#32
  let arg15 : BitVec 32 := Scf.iv c0_i32_348 c1_i32_350 k0_t3
  let v1929 : Index := Scalar.indexCast arg15
  let c96_1289 : Index := 96#32
  ![1, 3, v1929.toNat, 96]
def k0_off846 (k0_t3 : Fin k0_t3_loop.trips) : Fin 4 → Nat :=
  let c1_i32_1290 : BitVec 32 := 1#32
  let v1933 : Index := Scalar.indexCast c1_i32_1290
  let c3_i32_1291 : BitVec 32 := 3#32
  let v1934 : Index := Scalar.indexCast c3_i32_1291
  let c0_i32_348 : BitVec 32 := 0#32
  let c1_i32_350 : BitVec 32 := 1#32
  let arg15 : BitVec 32 := Scf.iv c0_i32_348 c1_i32_350 k0_t3
  let v1935 : Index := Scalar.indexCast arg15
  let c96_1292 : Index := 96#32
  ![1, 3, v1935.toNat, 96]
def k0_off847 (k0_t3 : Fin k0_t3_loop.trips) : Fin 4 → Nat :=
  let c1_i32_1293 : BitVec 32 := 1#32
  let v1939 : Index := Scalar.indexCast c1_i32_1293
  let c3_i32_1294 : BitVec 32 := 3#32
  let v1940 : Index := Scalar.indexCast c3_i32_1294
  let c0_i32_348 : BitVec 32 := 0#32
  let c1_i32_350 : BitVec 32 := 1#32
  let arg15 : BitVec 32 := Scf.iv c0_i32_348 c1_i32_350 k0_t3
  let v1941 : Index := Scalar.indexCast arg15
  let c112_1295 : Index := 112#32
  ![1, 3, v1941.toNat, 112]
def k0_off848 (k0_t3 : Fin k0_t3_loop.trips) : Fin 4 → Nat :=
  let c1_i32_1296 : BitVec 32 := 1#32
  let v1945 : Index := Scalar.indexCast c1_i32_1296
  let c3_i32_1297 : BitVec 32 := 3#32
  let v1946 : Index := Scalar.indexCast c3_i32_1297
  let c0_i32_348 : BitVec 32 := 0#32
  let c1_i32_350 : BitVec 32 := 1#32
  let arg15 : BitVec 32 := Scf.iv c0_i32_348 c1_i32_350 k0_t3
  let v1947 : Index := Scalar.indexCast arg15
  let c112_1298 : Index := 112#32
  ![1, 3, v1947.toNat, 112]
def k0_off849 (k0_t3 : Fin k0_t3_loop.trips) : Fin 4 → Nat :=
  let c1_i32_1299 : BitVec 32 := 1#32
  let v1951 : Index := Scalar.indexCast c1_i32_1299
  let c3_i32_1300 : BitVec 32 := 3#32
  let v1952 : Index := Scalar.indexCast c3_i32_1300
  let c0_i32_348 : BitVec 32 := 0#32
  let c1_i32_350 : BitVec 32 := 1#32
  let arg15 : BitVec 32 := Scf.iv c0_i32_348 c1_i32_350 k0_t3
  let v1953 : Index := Scalar.indexCast arg15
  let c128_1301 : Index := 128#32
  ![1, 3, v1953.toNat, 128]
def k0_off850 (k0_t3 : Fin k0_t3_loop.trips) : Fin 4 → Nat :=
  let c1_i32_1302 : BitVec 32 := 1#32
  let v1957 : Index := Scalar.indexCast c1_i32_1302
  let c3_i32_1303 : BitVec 32 := 3#32
  let v1958 : Index := Scalar.indexCast c3_i32_1303
  let c0_i32_348 : BitVec 32 := 0#32
  let c1_i32_350 : BitVec 32 := 1#32
  let arg15 : BitVec 32 := Scf.iv c0_i32_348 c1_i32_350 k0_t3
  let v1959 : Index := Scalar.indexCast arg15
  let c128_1304 : Index := 128#32
  ![1, 3, v1959.toNat, 128]
def k0_off851 (k0_t3 : Fin k0_t3_loop.trips) : Fin 4 → Nat :=
  let c1_i32_1305 : BitVec 32 := 1#32
  let v1963 : Index := Scalar.indexCast c1_i32_1305
  let c3_i32_1306 : BitVec 32 := 3#32
  let v1964 : Index := Scalar.indexCast c3_i32_1306
  let c0_i32_348 : BitVec 32 := 0#32
  let c1_i32_350 : BitVec 32 := 1#32
  let arg15 : BitVec 32 := Scf.iv c0_i32_348 c1_i32_350 k0_t3
  let v1965 : Index := Scalar.indexCast arg15
  let c144_1307 : Index := 144#32
  ![1, 3, v1965.toNat, 144]
def k0_off852 (k0_t3 : Fin k0_t3_loop.trips) : Fin 4 → Nat :=
  let c1_i32_1308 : BitVec 32 := 1#32
  let v1969 : Index := Scalar.indexCast c1_i32_1308
  let c3_i32_1309 : BitVec 32 := 3#32
  let v1970 : Index := Scalar.indexCast c3_i32_1309
  let c0_i32_348 : BitVec 32 := 0#32
  let c1_i32_350 : BitVec 32 := 1#32
  let arg15 : BitVec 32 := Scf.iv c0_i32_348 c1_i32_350 k0_t3
  let v1971 : Index := Scalar.indexCast arg15
  let c144_1310 : Index := 144#32
  ![1, 3, v1971.toNat, 144]
def k0_off853 (k0_t3 : Fin k0_t3_loop.trips) : Fin 4 → Nat :=
  let c1_i32_1311 : BitVec 32 := 1#32
  let v1975 : Index := Scalar.indexCast c1_i32_1311
  let c3_i32_1312 : BitVec 32 := 3#32
  let v1976 : Index := Scalar.indexCast c3_i32_1312
  let c0_i32_348 : BitVec 32 := 0#32
  let c1_i32_350 : BitVec 32 := 1#32
  let arg15 : BitVec 32 := Scf.iv c0_i32_348 c1_i32_350 k0_t3
  let v1977 : Index := Scalar.indexCast arg15
  let c160_1313 : Index := 160#32
  ![1, 3, v1977.toNat, 160]
def k0_off854 (k0_t3 : Fin k0_t3_loop.trips) : Fin 4 → Nat :=
  let c1_i32_1314 : BitVec 32 := 1#32
  let v1981 : Index := Scalar.indexCast c1_i32_1314
  let c3_i32_1315 : BitVec 32 := 3#32
  let v1982 : Index := Scalar.indexCast c3_i32_1315
  let c0_i32_348 : BitVec 32 := 0#32
  let c1_i32_350 : BitVec 32 := 1#32
  let arg15 : BitVec 32 := Scf.iv c0_i32_348 c1_i32_350 k0_t3
  let v1983 : Index := Scalar.indexCast arg15
  let c160_1316 : Index := 160#32
  ![1, 3, v1983.toNat, 160]
def k0_off855 (k0_t3 : Fin k0_t3_loop.trips) : Fin 4 → Nat :=
  let c1_i32_1317 : BitVec 32 := 1#32
  let v1987 : Index := Scalar.indexCast c1_i32_1317
  let c3_i32_1318 : BitVec 32 := 3#32
  let v1988 : Index := Scalar.indexCast c3_i32_1318
  let c0_i32_348 : BitVec 32 := 0#32
  let c1_i32_350 : BitVec 32 := 1#32
  let arg15 : BitVec 32 := Scf.iv c0_i32_348 c1_i32_350 k0_t3
  let v1989 : Index := Scalar.indexCast arg15
  let c176_1319 : Index := 176#32
  ![1, 3, v1989.toNat, 176]
def k0_off856 (k0_t3 : Fin k0_t3_loop.trips) : Fin 4 → Nat :=
  let c1_i32_1320 : BitVec 32 := 1#32
  let v1993 : Index := Scalar.indexCast c1_i32_1320
  let c3_i32_1321 : BitVec 32 := 3#32
  let v1994 : Index := Scalar.indexCast c3_i32_1321
  let c0_i32_348 : BitVec 32 := 0#32
  let c1_i32_350 : BitVec 32 := 1#32
  let arg15 : BitVec 32 := Scf.iv c0_i32_348 c1_i32_350 k0_t3
  let v1995 : Index := Scalar.indexCast arg15
  let c176_1322 : Index := 176#32
  ![1, 3, v1995.toNat, 176]
def k0_off857 (k0_t3 : Fin k0_t3_loop.trips) : Fin 4 → Nat :=
  let c1_i32_1323 : BitVec 32 := 1#32
  let v1999 : Index := Scalar.indexCast c1_i32_1323
  let c3_i32_1324 : BitVec 32 := 3#32
  let v2000 : Index := Scalar.indexCast c3_i32_1324
  let c0_i32_348 : BitVec 32 := 0#32
  let c1_i32_350 : BitVec 32 := 1#32
  let arg15 : BitVec 32 := Scf.iv c0_i32_348 c1_i32_350 k0_t3
  let v2001 : Index := Scalar.indexCast arg15
  let c192_1325 : Index := 192#32
  ![1, 3, v2001.toNat, 192]
def k0_off858 (k0_t3 : Fin k0_t3_loop.trips) : Fin 4 → Nat :=
  let c1_i32_1326 : BitVec 32 := 1#32
  let v2005 : Index := Scalar.indexCast c1_i32_1326
  let c3_i32_1327 : BitVec 32 := 3#32
  let v2006 : Index := Scalar.indexCast c3_i32_1327
  let c0_i32_348 : BitVec 32 := 0#32
  let c1_i32_350 : BitVec 32 := 1#32
  let arg15 : BitVec 32 := Scf.iv c0_i32_348 c1_i32_350 k0_t3
  let v2007 : Index := Scalar.indexCast arg15
  let c192_1328 : Index := 192#32
  ![1, 3, v2007.toNat, 192]
def k0_off859 (k0_t3 : Fin k0_t3_loop.trips) : Fin 4 → Nat :=
  let c1_i32_1329 : BitVec 32 := 1#32
  let v2011 : Index := Scalar.indexCast c1_i32_1329
  let c3_i32_1330 : BitVec 32 := 3#32
  let v2012 : Index := Scalar.indexCast c3_i32_1330
  let c0_i32_348 : BitVec 32 := 0#32
  let c1_i32_350 : BitVec 32 := 1#32
  let arg15 : BitVec 32 := Scf.iv c0_i32_348 c1_i32_350 k0_t3
  let v2013 : Index := Scalar.indexCast arg15
  let c208_1331 : Index := 208#32
  ![1, 3, v2013.toNat, 208]
def k0_off860 (k0_t3 : Fin k0_t3_loop.trips) : Fin 4 → Nat :=
  let c1_i32_1332 : BitVec 32 := 1#32
  let v2017 : Index := Scalar.indexCast c1_i32_1332
  let c3_i32_1333 : BitVec 32 := 3#32
  let v2018 : Index := Scalar.indexCast c3_i32_1333
  let c0_i32_348 : BitVec 32 := 0#32
  let c1_i32_350 : BitVec 32 := 1#32
  let arg15 : BitVec 32 := Scf.iv c0_i32_348 c1_i32_350 k0_t3
  let v2019 : Index := Scalar.indexCast arg15
  let c208_1334 : Index := 208#32
  ![1, 3, v2019.toNat, 208]
def k0_off861 (k0_t3 : Fin k0_t3_loop.trips) : Fin 4 → Nat :=
  let c1_i32_1335 : BitVec 32 := 1#32
  let v2023 : Index := Scalar.indexCast c1_i32_1335
  let c3_i32_1336 : BitVec 32 := 3#32
  let v2024 : Index := Scalar.indexCast c3_i32_1336
  let c0_i32_348 : BitVec 32 := 0#32
  let c1_i32_350 : BitVec 32 := 1#32
  let arg15 : BitVec 32 := Scf.iv c0_i32_348 c1_i32_350 k0_t3
  let v2025 : Index := Scalar.indexCast arg15
  let c224_1337 : Index := 224#32
  ![1, 3, v2025.toNat, 224]
def k0_off862 (k0_t3 : Fin k0_t3_loop.trips) : Fin 4 → Nat :=
  let c1_i32_1338 : BitVec 32 := 1#32
  let v2029 : Index := Scalar.indexCast c1_i32_1338
  let c3_i32_1339 : BitVec 32 := 3#32
  let v2030 : Index := Scalar.indexCast c3_i32_1339
  let c0_i32_348 : BitVec 32 := 0#32
  let c1_i32_350 : BitVec 32 := 1#32
  let arg15 : BitVec 32 := Scf.iv c0_i32_348 c1_i32_350 k0_t3
  let v2031 : Index := Scalar.indexCast arg15
  let c224_1340 : Index := 224#32
  ![1, 3, v2031.toNat, 224]
def k0_off863 (k0_t3 : Fin k0_t3_loop.trips) : Fin 4 → Nat :=
  let c1_i32_1341 : BitVec 32 := 1#32
  let v2035 : Index := Scalar.indexCast c1_i32_1341
  let c3_i32_1342 : BitVec 32 := 3#32
  let v2036 : Index := Scalar.indexCast c3_i32_1342
  let c0_i32_348 : BitVec 32 := 0#32
  let c1_i32_350 : BitVec 32 := 1#32
  let arg15 : BitVec 32 := Scf.iv c0_i32_348 c1_i32_350 k0_t3
  let v2037 : Index := Scalar.indexCast arg15
  let c240_1343 : Index := 240#32
  ![1, 3, v2037.toNat, 240]
def k0_off864 (k0_t3 : Fin k0_t3_loop.trips) : Fin 4 → Nat :=
  let c1_i32_1344 : BitVec 32 := 1#32
  let v2041 : Index := Scalar.indexCast c1_i32_1344
  let c3_i32_1345 : BitVec 32 := 3#32
  let v2042 : Index := Scalar.indexCast c3_i32_1345
  let c0_i32_348 : BitVec 32 := 0#32
  let c1_i32_350 : BitVec 32 := 1#32
  let arg15 : BitVec 32 := Scf.iv c0_i32_348 c1_i32_350 k0_t3
  let v2043 : Index := Scalar.indexCast arg15
  let c240_1346 : Index := 240#32
  ![1, 3, v2043.toNat, 240]
def k0_off865 (k0_t3 : Fin k0_t3_loop.trips) : Fin 4 → Nat :=
  let c1_i32_1347 : BitVec 32 := 1#32
  let v2047 : Index := Scalar.indexCast c1_i32_1347
  let c3_i32_1348 : BitVec 32 := 3#32
  let v2048 : Index := Scalar.indexCast c3_i32_1348
  let c0_i32_348 : BitVec 32 := 0#32
  let c1_i32_350 : BitVec 32 := 1#32
  let arg15 : BitVec 32 := Scf.iv c0_i32_348 c1_i32_350 k0_t3
  let v2049 : Index := Scalar.indexCast arg15
  let c256_1349 : Index := 256#32
  ![1, 3, v2049.toNat, 256]
def k0_off866 (k0_t3 : Fin k0_t3_loop.trips) : Fin 4 → Nat :=
  let c1_i32_1350 : BitVec 32 := 1#32
  let v2053 : Index := Scalar.indexCast c1_i32_1350
  let c3_i32_1351 : BitVec 32 := 3#32
  let v2054 : Index := Scalar.indexCast c3_i32_1351
  let c0_i32_348 : BitVec 32 := 0#32
  let c1_i32_350 : BitVec 32 := 1#32
  let arg15 : BitVec 32 := Scf.iv c0_i32_348 c1_i32_350 k0_t3
  let v2055 : Index := Scalar.indexCast arg15
  let c256_1352 : Index := 256#32
  ![1, 3, v2055.toNat, 256]
def k0_off867 (k0_t3 : Fin k0_t3_loop.trips) : Fin 4 → Nat :=
  let c1_i32_1353 : BitVec 32 := 1#32
  let v2059 : Index := Scalar.indexCast c1_i32_1353
  let c3_i32_1354 : BitVec 32 := 3#32
  let v2060 : Index := Scalar.indexCast c3_i32_1354
  let c0_i32_348 : BitVec 32 := 0#32
  let c1_i32_350 : BitVec 32 := 1#32
  let arg15 : BitVec 32 := Scf.iv c0_i32_348 c1_i32_350 k0_t3
  let v2061 : Index := Scalar.indexCast arg15
  let c272_1355 : Index := 272#32
  ![1, 3, v2061.toNat, 272]
def k0_off868 (k0_t3 : Fin k0_t3_loop.trips) : Fin 4 → Nat :=
  let c1_i32_1356 : BitVec 32 := 1#32
  let v2065 : Index := Scalar.indexCast c1_i32_1356
  let c3_i32_1357 : BitVec 32 := 3#32
  let v2066 : Index := Scalar.indexCast c3_i32_1357
  let c0_i32_348 : BitVec 32 := 0#32
  let c1_i32_350 : BitVec 32 := 1#32
  let arg15 : BitVec 32 := Scf.iv c0_i32_348 c1_i32_350 k0_t3
  let v2067 : Index := Scalar.indexCast arg15
  let c272_1358 : Index := 272#32
  ![1, 3, v2067.toNat, 272]
def k0_off869 (k0_t3 : Fin k0_t3_loop.trips) : Fin 4 → Nat :=
  let c1_i32_1359 : BitVec 32 := 1#32
  let v2071 : Index := Scalar.indexCast c1_i32_1359
  let c3_i32_1360 : BitVec 32 := 3#32
  let v2072 : Index := Scalar.indexCast c3_i32_1360
  let c0_i32_348 : BitVec 32 := 0#32
  let c1_i32_350 : BitVec 32 := 1#32
  let arg15 : BitVec 32 := Scf.iv c0_i32_348 c1_i32_350 k0_t3
  let v2073 : Index := Scalar.indexCast arg15
  let c288_1361 : Index := 288#32
  ![1, 3, v2073.toNat, 288]
def k0_off870 (k0_t3 : Fin k0_t3_loop.trips) : Fin 4 → Nat :=
  let c1_i32_1362 : BitVec 32 := 1#32
  let v2077 : Index := Scalar.indexCast c1_i32_1362
  let c3_i32_1363 : BitVec 32 := 3#32
  let v2078 : Index := Scalar.indexCast c3_i32_1363
  let c0_i32_348 : BitVec 32 := 0#32
  let c1_i32_350 : BitVec 32 := 1#32
  let arg15 : BitVec 32 := Scf.iv c0_i32_348 c1_i32_350 k0_t3
  let v2079 : Index := Scalar.indexCast arg15
  let c288_1364 : Index := 288#32
  ![1, 3, v2079.toNat, 288]
def k0_off871 (k0_t3 : Fin k0_t3_loop.trips) : Fin 4 → Nat :=
  let c1_i32_1365 : BitVec 32 := 1#32
  let v2083 : Index := Scalar.indexCast c1_i32_1365
  let c3_i32_1366 : BitVec 32 := 3#32
  let v2084 : Index := Scalar.indexCast c3_i32_1366
  let c0_i32_348 : BitVec 32 := 0#32
  let c1_i32_350 : BitVec 32 := 1#32
  let arg15 : BitVec 32 := Scf.iv c0_i32_348 c1_i32_350 k0_t3
  let v2085 : Index := Scalar.indexCast arg15
  let c304_1367 : Index := 304#32
  ![1, 3, v2085.toNat, 304]
def k0_off872 (k0_t3 : Fin k0_t3_loop.trips) : Fin 4 → Nat :=
  let c1_i32_1368 : BitVec 32 := 1#32
  let v2089 : Index := Scalar.indexCast c1_i32_1368
  let c3_i32_1369 : BitVec 32 := 3#32
  let v2090 : Index := Scalar.indexCast c3_i32_1369
  let c0_i32_348 : BitVec 32 := 0#32
  let c1_i32_350 : BitVec 32 := 1#32
  let arg15 : BitVec 32 := Scf.iv c0_i32_348 c1_i32_350 k0_t3
  let v2091 : Index := Scalar.indexCast arg15
  let c304_1370 : Index := 304#32
  ![1, 3, v2091.toNat, 304]
def k0_off873 (k0_t3 : Fin k0_t3_loop.trips) : Fin 4 → Nat :=
  let c1_i32_1371 : BitVec 32 := 1#32
  let v2095 : Index := Scalar.indexCast c1_i32_1371
  let c3_i32_1372 : BitVec 32 := 3#32
  let v2096 : Index := Scalar.indexCast c3_i32_1372
  let c0_i32_348 : BitVec 32 := 0#32
  let c1_i32_350 : BitVec 32 := 1#32
  let arg15 : BitVec 32 := Scf.iv c0_i32_348 c1_i32_350 k0_t3
  let v2097 : Index := Scalar.indexCast arg15
  let c320_1373 : Index := 320#32
  ![1, 3, v2097.toNat, 320]
def k0_off874 (k0_t3 : Fin k0_t3_loop.trips) : Fin 4 → Nat :=
  let c1_i32_1374 : BitVec 32 := 1#32
  let v2101 : Index := Scalar.indexCast c1_i32_1374
  let c3_i32_1375 : BitVec 32 := 3#32
  let v2102 : Index := Scalar.indexCast c3_i32_1375
  let c0_i32_348 : BitVec 32 := 0#32
  let c1_i32_350 : BitVec 32 := 1#32
  let arg15 : BitVec 32 := Scf.iv c0_i32_348 c1_i32_350 k0_t3
  let v2103 : Index := Scalar.indexCast arg15
  let c320_1376 : Index := 320#32
  ![1, 3, v2103.toNat, 320]
def k0_off875 (k0_t3 : Fin k0_t3_loop.trips) : Fin 4 → Nat :=
  let c1_i32_1377 : BitVec 32 := 1#32
  let v2107 : Index := Scalar.indexCast c1_i32_1377
  let c3_i32_1378 : BitVec 32 := 3#32
  let v2108 : Index := Scalar.indexCast c3_i32_1378
  let c0_i32_348 : BitVec 32 := 0#32
  let c1_i32_350 : BitVec 32 := 1#32
  let arg15 : BitVec 32 := Scf.iv c0_i32_348 c1_i32_350 k0_t3
  let v2109 : Index := Scalar.indexCast arg15
  let c336_1379 : Index := 336#32
  ![1, 3, v2109.toNat, 336]
def k0_off876 (k0_t3 : Fin k0_t3_loop.trips) : Fin 4 → Nat :=
  let c1_i32_1380 : BitVec 32 := 1#32
  let v2113 : Index := Scalar.indexCast c1_i32_1380
  let c3_i32_1381 : BitVec 32 := 3#32
  let v2114 : Index := Scalar.indexCast c3_i32_1381
  let c0_i32_348 : BitVec 32 := 0#32
  let c1_i32_350 : BitVec 32 := 1#32
  let arg15 : BitVec 32 := Scf.iv c0_i32_348 c1_i32_350 k0_t3
  let v2115 : Index := Scalar.indexCast arg15
  let c336_1382 : Index := 336#32
  ![1, 3, v2115.toNat, 336]
def k0_off877 (k0_t3 : Fin k0_t3_loop.trips) : Fin 4 → Nat :=
  let c1_i32_1383 : BitVec 32 := 1#32
  let v2119 : Index := Scalar.indexCast c1_i32_1383
  let c3_i32_1384 : BitVec 32 := 3#32
  let v2120 : Index := Scalar.indexCast c3_i32_1384
  let c0_i32_348 : BitVec 32 := 0#32
  let c1_i32_350 : BitVec 32 := 1#32
  let arg15 : BitVec 32 := Scf.iv c0_i32_348 c1_i32_350 k0_t3
  let v2121 : Index := Scalar.indexCast arg15
  let c352_1385 : Index := 352#32
  ![1, 3, v2121.toNat, 352]
def k0_off878 (k0_t3 : Fin k0_t3_loop.trips) : Fin 4 → Nat :=
  let c1_i32_1386 : BitVec 32 := 1#32
  let v2125 : Index := Scalar.indexCast c1_i32_1386
  let c3_i32_1387 : BitVec 32 := 3#32
  let v2126 : Index := Scalar.indexCast c3_i32_1387
  let c0_i32_348 : BitVec 32 := 0#32
  let c1_i32_350 : BitVec 32 := 1#32
  let arg15 : BitVec 32 := Scf.iv c0_i32_348 c1_i32_350 k0_t3
  let v2127 : Index := Scalar.indexCast arg15
  let c352_1388 : Index := 352#32
  ![1, 3, v2127.toNat, 352]
def k0_off879 (k0_t3 : Fin k0_t3_loop.trips) : Fin 4 → Nat :=
  let c1_i32_1389 : BitVec 32 := 1#32
  let v2131 : Index := Scalar.indexCast c1_i32_1389
  let c3_i32_1390 : BitVec 32 := 3#32
  let v2132 : Index := Scalar.indexCast c3_i32_1390
  let c0_i32_348 : BitVec 32 := 0#32
  let c1_i32_350 : BitVec 32 := 1#32
  let arg15 : BitVec 32 := Scf.iv c0_i32_348 c1_i32_350 k0_t3
  let v2133 : Index := Scalar.indexCast arg15
  let c368_1391 : Index := 368#32
  ![1, 3, v2133.toNat, 368]
def k0_off880 (k0_t3 : Fin k0_t3_loop.trips) : Fin 4 → Nat :=
  let c1_i32_1392 : BitVec 32 := 1#32
  let v2137 : Index := Scalar.indexCast c1_i32_1392
  let c3_i32_1393 : BitVec 32 := 3#32
  let v2138 : Index := Scalar.indexCast c3_i32_1393
  let c0_i32_348 : BitVec 32 := 0#32
  let c1_i32_350 : BitVec 32 := 1#32
  let arg15 : BitVec 32 := Scf.iv c0_i32_348 c1_i32_350 k0_t3
  let v2139 : Index := Scalar.indexCast arg15
  let c368_1394 : Index := 368#32
  ![1, 3, v2139.toNat, 368]
def k0_off881 (k0_t3 : Fin k0_t3_loop.trips) : Fin 4 → Nat :=
  let c1_i32_1395 : BitVec 32 := 1#32
  let v2143 : Index := Scalar.indexCast c1_i32_1395
  let c3_i32_1396 : BitVec 32 := 3#32
  let v2144 : Index := Scalar.indexCast c3_i32_1396
  let c0_i32_348 : BitVec 32 := 0#32
  let c1_i32_350 : BitVec 32 := 1#32
  let arg15 : BitVec 32 := Scf.iv c0_i32_348 c1_i32_350 k0_t3
  let v2145 : Index := Scalar.indexCast arg15
  let c384_1397 : Index := 384#32
  ![1, 3, v2145.toNat, 384]
def k0_off882 (k0_t3 : Fin k0_t3_loop.trips) : Fin 4 → Nat :=
  let c1_i32_1398 : BitVec 32 := 1#32
  let v2149 : Index := Scalar.indexCast c1_i32_1398
  let c3_i32_1399 : BitVec 32 := 3#32
  let v2150 : Index := Scalar.indexCast c3_i32_1399
  let c0_i32_348 : BitVec 32 := 0#32
  let c1_i32_350 : BitVec 32 := 1#32
  let arg15 : BitVec 32 := Scf.iv c0_i32_348 c1_i32_350 k0_t3
  let v2151 : Index := Scalar.indexCast arg15
  let c384_1400 : Index := 384#32
  ![1, 3, v2151.toNat, 384]
def k0_off883 (k0_t3 : Fin k0_t3_loop.trips) : Fin 4 → Nat :=
  let c1_i32_1401 : BitVec 32 := 1#32
  let v2155 : Index := Scalar.indexCast c1_i32_1401
  let c3_i32_1402 : BitVec 32 := 3#32
  let v2156 : Index := Scalar.indexCast c3_i32_1402
  let c0_i32_348 : BitVec 32 := 0#32
  let c1_i32_350 : BitVec 32 := 1#32
  let arg15 : BitVec 32 := Scf.iv c0_i32_348 c1_i32_350 k0_t3
  let v2157 : Index := Scalar.indexCast arg15
  let c400_1403 : Index := 400#32
  ![1, 3, v2157.toNat, 400]
def k0_off884 (k0_t3 : Fin k0_t3_loop.trips) : Fin 4 → Nat :=
  let c1_i32_1404 : BitVec 32 := 1#32
  let v2161 : Index := Scalar.indexCast c1_i32_1404
  let c3_i32_1405 : BitVec 32 := 3#32
  let v2162 : Index := Scalar.indexCast c3_i32_1405
  let c0_i32_348 : BitVec 32 := 0#32
  let c1_i32_350 : BitVec 32 := 1#32
  let arg15 : BitVec 32 := Scf.iv c0_i32_348 c1_i32_350 k0_t3
  let v2163 : Index := Scalar.indexCast arg15
  let c400_1406 : Index := 400#32
  ![1, 3, v2163.toNat, 400]
def k0_off885 (k0_t3 : Fin k0_t3_loop.trips) : Fin 4 → Nat :=
  let c1_i32_1407 : BitVec 32 := 1#32
  let v2167 : Index := Scalar.indexCast c1_i32_1407
  let c3_i32_1408 : BitVec 32 := 3#32
  let v2168 : Index := Scalar.indexCast c3_i32_1408
  let c0_i32_348 : BitVec 32 := 0#32
  let c1_i32_350 : BitVec 32 := 1#32
  let arg15 : BitVec 32 := Scf.iv c0_i32_348 c1_i32_350 k0_t3
  let v2169 : Index := Scalar.indexCast arg15
  let c416_1409 : Index := 416#32
  ![1, 3, v2169.toNat, 416]
def k0_off886 (k0_t3 : Fin k0_t3_loop.trips) : Fin 4 → Nat :=
  let c1_i32_1410 : BitVec 32 := 1#32
  let v2173 : Index := Scalar.indexCast c1_i32_1410
  let c3_i32_1411 : BitVec 32 := 3#32
  let v2174 : Index := Scalar.indexCast c3_i32_1411
  let c0_i32_348 : BitVec 32 := 0#32
  let c1_i32_350 : BitVec 32 := 1#32
  let arg15 : BitVec 32 := Scf.iv c0_i32_348 c1_i32_350 k0_t3
  let v2175 : Index := Scalar.indexCast arg15
  let c416_1412 : Index := 416#32
  ![1, 3, v2175.toNat, 416]
def k0_off887 (k0_t3 : Fin k0_t3_loop.trips) : Fin 4 → Nat :=
  let c1_i32_1413 : BitVec 32 := 1#32
  let v2179 : Index := Scalar.indexCast c1_i32_1413
  let c3_i32_1414 : BitVec 32 := 3#32
  let v2180 : Index := Scalar.indexCast c3_i32_1414
  let c0_i32_348 : BitVec 32 := 0#32
  let c1_i32_350 : BitVec 32 := 1#32
  let arg15 : BitVec 32 := Scf.iv c0_i32_348 c1_i32_350 k0_t3
  let v2181 : Index := Scalar.indexCast arg15
  let c432_1415 : Index := 432#32
  ![1, 3, v2181.toNat, 432]
def k0_off888 (k0_t3 : Fin k0_t3_loop.trips) : Fin 4 → Nat :=
  let c1_i32_1416 : BitVec 32 := 1#32
  let v2185 : Index := Scalar.indexCast c1_i32_1416
  let c3_i32_1417 : BitVec 32 := 3#32
  let v2186 : Index := Scalar.indexCast c3_i32_1417
  let c0_i32_348 : BitVec 32 := 0#32
  let c1_i32_350 : BitVec 32 := 1#32
  let arg15 : BitVec 32 := Scf.iv c0_i32_348 c1_i32_350 k0_t3
  let v2187 : Index := Scalar.indexCast arg15
  let c432_1418 : Index := 432#32
  ![1, 3, v2187.toNat, 432]
def k0_off889 (k0_t3 : Fin k0_t3_loop.trips) : Fin 4 → Nat :=
  let c1_i32_1419 : BitVec 32 := 1#32
  let v2191 : Index := Scalar.indexCast c1_i32_1419
  let c3_i32_1420 : BitVec 32 := 3#32
  let v2192 : Index := Scalar.indexCast c3_i32_1420
  let c0_i32_348 : BitVec 32 := 0#32
  let c1_i32_350 : BitVec 32 := 1#32
  let arg15 : BitVec 32 := Scf.iv c0_i32_348 c1_i32_350 k0_t3
  let v2193 : Index := Scalar.indexCast arg15
  let c448_1421 : Index := 448#32
  ![1, 3, v2193.toNat, 448]
def k0_off890 (k0_t3 : Fin k0_t3_loop.trips) : Fin 4 → Nat :=
  let c1_i32_1422 : BitVec 32 := 1#32
  let v2197 : Index := Scalar.indexCast c1_i32_1422
  let c3_i32_1423 : BitVec 32 := 3#32
  let v2198 : Index := Scalar.indexCast c3_i32_1423
  let c0_i32_348 : BitVec 32 := 0#32
  let c1_i32_350 : BitVec 32 := 1#32
  let arg15 : BitVec 32 := Scf.iv c0_i32_348 c1_i32_350 k0_t3
  let v2199 : Index := Scalar.indexCast arg15
  let c448_1424 : Index := 448#32
  ![1, 3, v2199.toNat, 448]
def k0_off891 (k0_t3 : Fin k0_t3_loop.trips) : Fin 4 → Nat :=
  let c1_i32_1425 : BitVec 32 := 1#32
  let v2203 : Index := Scalar.indexCast c1_i32_1425
  let c3_i32_1426 : BitVec 32 := 3#32
  let v2204 : Index := Scalar.indexCast c3_i32_1426
  let c0_i32_348 : BitVec 32 := 0#32
  let c1_i32_350 : BitVec 32 := 1#32
  let arg15 : BitVec 32 := Scf.iv c0_i32_348 c1_i32_350 k0_t3
  let v2205 : Index := Scalar.indexCast arg15
  let c464_1427 : Index := 464#32
  ![1, 3, v2205.toNat, 464]
def k0_off892 (k0_t3 : Fin k0_t3_loop.trips) : Fin 4 → Nat :=
  let c1_i32_1428 : BitVec 32 := 1#32
  let v2209 : Index := Scalar.indexCast c1_i32_1428
  let c3_i32_1429 : BitVec 32 := 3#32
  let v2210 : Index := Scalar.indexCast c3_i32_1429
  let c0_i32_348 : BitVec 32 := 0#32
  let c1_i32_350 : BitVec 32 := 1#32
  let arg15 : BitVec 32 := Scf.iv c0_i32_348 c1_i32_350 k0_t3
  let v2211 : Index := Scalar.indexCast arg15
  let c464_1430 : Index := 464#32
  ![1, 3, v2211.toNat, 464]
def k0_off893 (k0_t3 : Fin k0_t3_loop.trips) : Fin 4 → Nat :=
  let c1_i32_1431 : BitVec 32 := 1#32
  let v2215 : Index := Scalar.indexCast c1_i32_1431
  let c3_i32_1432 : BitVec 32 := 3#32
  let v2216 : Index := Scalar.indexCast c3_i32_1432
  let c0_i32_348 : BitVec 32 := 0#32
  let c1_i32_350 : BitVec 32 := 1#32
  let arg15 : BitVec 32 := Scf.iv c0_i32_348 c1_i32_350 k0_t3
  let v2217 : Index := Scalar.indexCast arg15
  let c480_1433 : Index := 480#32
  ![1, 3, v2217.toNat, 480]
def k0_off894 (k0_t3 : Fin k0_t3_loop.trips) : Fin 4 → Nat :=
  let c1_i32_1434 : BitVec 32 := 1#32
  let v2221 : Index := Scalar.indexCast c1_i32_1434
  let c3_i32_1435 : BitVec 32 := 3#32
  let v2222 : Index := Scalar.indexCast c3_i32_1435
  let c0_i32_348 : BitVec 32 := 0#32
  let c1_i32_350 : BitVec 32 := 1#32
  let arg15 : BitVec 32 := Scf.iv c0_i32_348 c1_i32_350 k0_t3
  let v2223 : Index := Scalar.indexCast arg15
  let c480_1436 : Index := 480#32
  ![1, 3, v2223.toNat, 480]
def k0_off895 (k0_t3 : Fin k0_t3_loop.trips) : Fin 4 → Nat :=
  let c1_i32_1437 : BitVec 32 := 1#32
  let v2227 : Index := Scalar.indexCast c1_i32_1437
  let c3_i32_1438 : BitVec 32 := 3#32
  let v2228 : Index := Scalar.indexCast c3_i32_1438
  let c0_i32_348 : BitVec 32 := 0#32
  let c1_i32_350 : BitVec 32 := 1#32
  let arg15 : BitVec 32 := Scf.iv c0_i32_348 c1_i32_350 k0_t3
  let v2229 : Index := Scalar.indexCast arg15
  let c496_1439 : Index := 496#32
  ![1, 3, v2229.toNat, 496]
def k0_off896 (k0_t3 : Fin k0_t3_loop.trips) : Fin 4 → Nat :=
  let c1_i32_1440 : BitVec 32 := 1#32
  let v2233 : Index := Scalar.indexCast c1_i32_1440
  let c3_i32_1441 : BitVec 32 := 3#32
  let v2234 : Index := Scalar.indexCast c3_i32_1441
  let c0_i32_348 : BitVec 32 := 0#32
  let c1_i32_350 : BitVec 32 := 1#32
  let arg15 : BitVec 32 := Scf.iv c0_i32_348 c1_i32_350 k0_t3
  let v2235 : Index := Scalar.indexCast arg15
  let c496_1442 : Index := 496#32
  ![1, 3, v2235.toNat, 496]
def k0_off897 (k0_t3 : Fin k0_t3_loop.trips) : Fin 3 → Nat :=
  let c1_i32_1443 : BitVec 32 := 1#32
  let v2239 : Index := Scalar.indexCast c1_i32_1443
  let c0_i32_348 : BitVec 32 := 0#32
  let c1_i32_350 : BitVec 32 := 1#32
  let arg15 : BitVec 32 := Scf.iv c0_i32_348 c1_i32_350 k0_t3
  let v2240 : Index := Scalar.indexCast arg15
  let c512 : Index := 512#32
  ![1, v2240.toNat, 512]
def k0_off898 (k0_t3 : Fin k0_t3_loop.trips) : Fin 3 → Nat :=
  let c1_i32_1444 : BitVec 32 := 1#32
  let v2243 : Index := Scalar.indexCast c1_i32_1444
  let c0_i32_348 : BitVec 32 := 0#32
  let c1_i32_350 : BitVec 32 := 1#32
  let arg15 : BitVec 32 := Scf.iv c0_i32_348 c1_i32_350 k0_t3
  let v2244 : Index := Scalar.indexCast arg15
  let c528 : Index := 528#32
  ![1, v2244.toNat, 528]
def k0_off899 (k0_t3 : Fin k0_t3_loop.trips) : Fin 3 → Nat :=
  let c1_i32_1445 : BitVec 32 := 1#32
  let v2247 : Index := Scalar.indexCast c1_i32_1445
  let c0_i32_348 : BitVec 32 := 0#32
  let c1_i32_350 : BitVec 32 := 1#32
  let arg15 : BitVec 32 := Scf.iv c0_i32_348 c1_i32_350 k0_t3
  let v2248 : Index := Scalar.indexCast arg15
  let c544 : Index := 544#32
  ![1, v2248.toNat, 544]
def k0_off900 (k0_t3 : Fin k0_t3_loop.trips) : Fin 3 → Nat :=
  let c1_i32_1446 : BitVec 32 := 1#32
  let v2251 : Index := Scalar.indexCast c1_i32_1446
  let c0_i32_348 : BitVec 32 := 0#32
  let c1_i32_350 : BitVec 32 := 1#32
  let arg15 : BitVec 32 := Scf.iv c0_i32_348 c1_i32_350 k0_t3
  let v2252 : Index := Scalar.indexCast arg15
  let c560 : Index := 560#32
  ![1, v2252.toNat, 560]
def k0_off901 (k0_t3 : Fin k0_t3_loop.trips) : Fin 3 → Nat :=
  let c1_i32_1447 : BitVec 32 := 1#32
  let v2255 : Index := Scalar.indexCast c1_i32_1447
  let c0_i32_348 : BitVec 32 := 0#32
  let c1_i32_350 : BitVec 32 := 1#32
  let arg15 : BitVec 32 := Scf.iv c0_i32_348 c1_i32_350 k0_t3
  let v2256 : Index := Scalar.indexCast arg15
  let c576 : Index := 576#32
  ![1, v2256.toNat, 576]
def k0_off902 (k0_t3 : Fin k0_t3_loop.trips) : Fin 3 → Nat :=
  let c1_i32_1448 : BitVec 32 := 1#32
  let v2259 : Index := Scalar.indexCast c1_i32_1448
  let c0_i32_348 : BitVec 32 := 0#32
  let c1_i32_350 : BitVec 32 := 1#32
  let arg15 : BitVec 32 := Scf.iv c0_i32_348 c1_i32_350 k0_t3
  let v2260 : Index := Scalar.indexCast arg15
  let c592 : Index := 592#32
  ![1, v2260.toNat, 592]
def k0_off903 (k0_t3 : Fin k0_t3_loop.trips) : Fin 3 → Nat :=
  let c1_i32_1449 : BitVec 32 := 1#32
  let v2263 : Index := Scalar.indexCast c1_i32_1449
  let c0_i32_348 : BitVec 32 := 0#32
  let c1_i32_350 : BitVec 32 := 1#32
  let arg15 : BitVec 32 := Scf.iv c0_i32_348 c1_i32_350 k0_t3
  let v2264 : Index := Scalar.indexCast arg15
  let c608 : Index := 608#32
  ![1, v2264.toNat, 608]
def k0_off904 (k0_t3 : Fin k0_t3_loop.trips) : Fin 3 → Nat :=
  let c1_i32_1450 : BitVec 32 := 1#32
  let v2267 : Index := Scalar.indexCast c1_i32_1450
  let c0_i32_348 : BitVec 32 := 0#32
  let c1_i32_350 : BitVec 32 := 1#32
  let arg15 : BitVec 32 := Scf.iv c0_i32_348 c1_i32_350 k0_t3
  let v2268 : Index := Scalar.indexCast arg15
  let c624 : Index := 624#32
  ![1, v2268.toNat, 624]
def k0_off905 (k0_t3 : Fin k0_t3_loop.trips) : Fin 3 → Nat :=
  let c1_i32_1451 : BitVec 32 := 1#32
  let v2271 : Index := Scalar.indexCast c1_i32_1451
  let c0_i32_348 : BitVec 32 := 0#32
  let c1_i32_350 : BitVec 32 := 1#32
  let arg15 : BitVec 32 := Scf.iv c0_i32_348 c1_i32_350 k0_t3
  let v2272 : Index := Scalar.indexCast arg15
  let c640 : Index := 640#32
  ![1, v2272.toNat, 640]
def k0_off906 (k0_t3 : Fin k0_t3_loop.trips) : Fin 3 → Nat :=
  let c1_i32_1452 : BitVec 32 := 1#32
  let v2275 : Index := Scalar.indexCast c1_i32_1452
  let c0_i32_348 : BitVec 32 := 0#32
  let c1_i32_350 : BitVec 32 := 1#32
  let arg15 : BitVec 32 := Scf.iv c0_i32_348 c1_i32_350 k0_t3
  let v2276 : Index := Scalar.indexCast arg15
  let c656 : Index := 656#32
  ![1, v2276.toNat, 656]
def k0_off907 (k0_t3 : Fin k0_t3_loop.trips) : Fin 3 → Nat :=
  let c1_i32_1453 : BitVec 32 := 1#32
  let v2279 : Index := Scalar.indexCast c1_i32_1453
  let c0_i32_348 : BitVec 32 := 0#32
  let c1_i32_350 : BitVec 32 := 1#32
  let arg15 : BitVec 32 := Scf.iv c0_i32_348 c1_i32_350 k0_t3
  let v2280 : Index := Scalar.indexCast arg15
  let c672 : Index := 672#32
  ![1, v2280.toNat, 672]
def k0_off908 (k0_t3 : Fin k0_t3_loop.trips) : Fin 3 → Nat :=
  let c1_i32_1454 : BitVec 32 := 1#32
  let v2283 : Index := Scalar.indexCast c1_i32_1454
  let c0_i32_348 : BitVec 32 := 0#32
  let c1_i32_350 : BitVec 32 := 1#32
  let arg15 : BitVec 32 := Scf.iv c0_i32_348 c1_i32_350 k0_t3
  let v2284 : Index := Scalar.indexCast arg15
  let c688 : Index := 688#32
  ![1, v2284.toNat, 688]
def k0_off909 (k0_t3 : Fin k0_t3_loop.trips) : Fin 3 → Nat :=
  let c1_i32_1455 : BitVec 32 := 1#32
  let v2287 : Index := Scalar.indexCast c1_i32_1455
  let c0_i32_348 : BitVec 32 := 0#32
  let c1_i32_350 : BitVec 32 := 1#32
  let arg15 : BitVec 32 := Scf.iv c0_i32_348 c1_i32_350 k0_t3
  let v2288 : Index := Scalar.indexCast arg15
  let c704 : Index := 704#32
  ![1, v2288.toNat, 704]
def k0_off910 (k0_t3 : Fin k0_t3_loop.trips) : Fin 3 → Nat :=
  let c1_i32_1456 : BitVec 32 := 1#32
  let v2291 : Index := Scalar.indexCast c1_i32_1456
  let c0_i32_348 : BitVec 32 := 0#32
  let c1_i32_350 : BitVec 32 := 1#32
  let arg15 : BitVec 32 := Scf.iv c0_i32_348 c1_i32_350 k0_t3
  let v2292 : Index := Scalar.indexCast arg15
  let c720 : Index := 720#32
  ![1, v2292.toNat, 720]
def k0_off911 (k0_t3 : Fin k0_t3_loop.trips) : Fin 3 → Nat :=
  let c1_i32_1457 : BitVec 32 := 1#32
  let v2295 : Index := Scalar.indexCast c1_i32_1457
  let c0_i32_348 : BitVec 32 := 0#32
  let c1_i32_350 : BitVec 32 := 1#32
  let arg15 : BitVec 32 := Scf.iv c0_i32_348 c1_i32_350 k0_t3
  let v2296 : Index := Scalar.indexCast arg15
  let c736 : Index := 736#32
  ![1, v2296.toNat, 736]
def k0_off912 (k0_t3 : Fin k0_t3_loop.trips) : Fin 3 → Nat :=
  let c1_i32_1458 : BitVec 32 := 1#32
  let v2299 : Index := Scalar.indexCast c1_i32_1458
  let c0_i32_348 : BitVec 32 := 0#32
  let c1_i32_350 : BitVec 32 := 1#32
  let arg15 : BitVec 32 := Scf.iv c0_i32_348 c1_i32_350 k0_t3
  let v2300 : Index := Scalar.indexCast arg15
  let c752 : Index := 752#32
  ![1, v2300.toNat, 752]
def k0_off913 (k0_t3 : Fin k0_t3_loop.trips) : Fin 3 → Nat :=
  let c1_i32_1459 : BitVec 32 := 1#32
  let v2303 : Index := Scalar.indexCast c1_i32_1459
  let c0_i32_348 : BitVec 32 := 0#32
  let c1_i32_350 : BitVec 32 := 1#32
  let arg15 : BitVec 32 := Scf.iv c0_i32_348 c1_i32_350 k0_t3
  let v2304 : Index := Scalar.indexCast arg15
  let c768 : Index := 768#32
  ![1, v2304.toNat, 768]
def k0_off914 (k0_t3 : Fin k0_t3_loop.trips) : Fin 3 → Nat :=
  let c1_i32_1460 : BitVec 32 := 1#32
  let v2307 : Index := Scalar.indexCast c1_i32_1460
  let c0_i32_348 : BitVec 32 := 0#32
  let c1_i32_350 : BitVec 32 := 1#32
  let arg15 : BitVec 32 := Scf.iv c0_i32_348 c1_i32_350 k0_t3
  let v2308 : Index := Scalar.indexCast arg15
  let c784 : Index := 784#32
  ![1, v2308.toNat, 784]
def k0_off915 (k0_t3 : Fin k0_t3_loop.trips) : Fin 3 → Nat :=
  let c1_i32_1461 : BitVec 32 := 1#32
  let v2311 : Index := Scalar.indexCast c1_i32_1461
  let c0_i32_348 : BitVec 32 := 0#32
  let c1_i32_350 : BitVec 32 := 1#32
  let arg15 : BitVec 32 := Scf.iv c0_i32_348 c1_i32_350 k0_t3
  let v2312 : Index := Scalar.indexCast arg15
  let c800 : Index := 800#32
  ![1, v2312.toNat, 800]
def k0_off916 (k0_t3 : Fin k0_t3_loop.trips) : Fin 3 → Nat :=
  let c1_i32_1462 : BitVec 32 := 1#32
  let v2315 : Index := Scalar.indexCast c1_i32_1462
  let c0_i32_348 : BitVec 32 := 0#32
  let c1_i32_350 : BitVec 32 := 1#32
  let arg15 : BitVec 32 := Scf.iv c0_i32_348 c1_i32_350 k0_t3
  let v2316 : Index := Scalar.indexCast arg15
  let c816 : Index := 816#32
  ![1, v2316.toNat, 816]
def k0_off917 (k0_t3 : Fin k0_t3_loop.trips) : Fin 3 → Nat :=
  let c1_i32_1463 : BitVec 32 := 1#32
  let v2319 : Index := Scalar.indexCast c1_i32_1463
  let c0_i32_348 : BitVec 32 := 0#32
  let c1_i32_350 : BitVec 32 := 1#32
  let arg15 : BitVec 32 := Scf.iv c0_i32_348 c1_i32_350 k0_t3
  let v2320 : Index := Scalar.indexCast arg15
  let c832 : Index := 832#32
  ![1, v2320.toNat, 832]
def k0_off918 (k0_t3 : Fin k0_t3_loop.trips) : Fin 3 → Nat :=
  let c1_i32_1464 : BitVec 32 := 1#32
  let v2323 : Index := Scalar.indexCast c1_i32_1464
  let c0_i32_348 : BitVec 32 := 0#32
  let c1_i32_350 : BitVec 32 := 1#32
  let arg15 : BitVec 32 := Scf.iv c0_i32_348 c1_i32_350 k0_t3
  let v2324 : Index := Scalar.indexCast arg15
  let c848 : Index := 848#32
  ![1, v2324.toNat, 848]
def k0_off919 (k0_t3 : Fin k0_t3_loop.trips) : Fin 3 → Nat :=
  let c1_i32_1465 : BitVec 32 := 1#32
  let v2327 : Index := Scalar.indexCast c1_i32_1465
  let c0_i32_348 : BitVec 32 := 0#32
  let c1_i32_350 : BitVec 32 := 1#32
  let arg15 : BitVec 32 := Scf.iv c0_i32_348 c1_i32_350 k0_t3
  let v2328 : Index := Scalar.indexCast arg15
  let c864 : Index := 864#32
  ![1, v2328.toNat, 864]
def k0_off920 (k0_t3 : Fin k0_t3_loop.trips) : Fin 3 → Nat :=
  let c1_i32_1466 : BitVec 32 := 1#32
  let v2331 : Index := Scalar.indexCast c1_i32_1466
  let c0_i32_348 : BitVec 32 := 0#32
  let c1_i32_350 : BitVec 32 := 1#32
  let arg15 : BitVec 32 := Scf.iv c0_i32_348 c1_i32_350 k0_t3
  let v2332 : Index := Scalar.indexCast arg15
  let c880 : Index := 880#32
  ![1, v2332.toNat, 880]
def k0_off921 (k0_t3 : Fin k0_t3_loop.trips) : Fin 3 → Nat :=
  let c1_i32_1467 : BitVec 32 := 1#32
  let v2335 : Index := Scalar.indexCast c1_i32_1467
  let c0_i32_348 : BitVec 32 := 0#32
  let c1_i32_350 : BitVec 32 := 1#32
  let arg15 : BitVec 32 := Scf.iv c0_i32_348 c1_i32_350 k0_t3
  let v2336 : Index := Scalar.indexCast arg15
  let c896 : Index := 896#32
  ![1, v2336.toNat, 896]
def k0_off922 (k0_t3 : Fin k0_t3_loop.trips) : Fin 3 → Nat :=
  let c1_i32_1468 : BitVec 32 := 1#32
  let v2339 : Index := Scalar.indexCast c1_i32_1468
  let c0_i32_348 : BitVec 32 := 0#32
  let c1_i32_350 : BitVec 32 := 1#32
  let arg15 : BitVec 32 := Scf.iv c0_i32_348 c1_i32_350 k0_t3
  let v2340 : Index := Scalar.indexCast arg15
  let c912 : Index := 912#32
  ![1, v2340.toNat, 912]
def k0_off923 (k0_t3 : Fin k0_t3_loop.trips) : Fin 3 → Nat :=
  let c1_i32_1469 : BitVec 32 := 1#32
  let v2343 : Index := Scalar.indexCast c1_i32_1469
  let c0_i32_348 : BitVec 32 := 0#32
  let c1_i32_350 : BitVec 32 := 1#32
  let arg15 : BitVec 32 := Scf.iv c0_i32_348 c1_i32_350 k0_t3
  let v2344 : Index := Scalar.indexCast arg15
  let c928 : Index := 928#32
  ![1, v2344.toNat, 928]
def k0_off924 (k0_t3 : Fin k0_t3_loop.trips) : Fin 3 → Nat :=
  let c1_i32_1470 : BitVec 32 := 1#32
  let v2347 : Index := Scalar.indexCast c1_i32_1470
  let c0_i32_348 : BitVec 32 := 0#32
  let c1_i32_350 : BitVec 32 := 1#32
  let arg15 : BitVec 32 := Scf.iv c0_i32_348 c1_i32_350 k0_t3
  let v2348 : Index := Scalar.indexCast arg15
  let c944 : Index := 944#32
  ![1, v2348.toNat, 944]
def k0_off925 (k0_t3 : Fin k0_t3_loop.trips) : Fin 3 → Nat :=
  let c1_i32_1471 : BitVec 32 := 1#32
  let v2351 : Index := Scalar.indexCast c1_i32_1471
  let c0_i32_348 : BitVec 32 := 0#32
  let c1_i32_350 : BitVec 32 := 1#32
  let arg15 : BitVec 32 := Scf.iv c0_i32_348 c1_i32_350 k0_t3
  let v2352 : Index := Scalar.indexCast arg15
  let c960 : Index := 960#32
  ![1, v2352.toNat, 960]
def k0_off926 (k0_t3 : Fin k0_t3_loop.trips) : Fin 3 → Nat :=
  let c1_i32_1472 : BitVec 32 := 1#32
  let v2355 : Index := Scalar.indexCast c1_i32_1472
  let c0_i32_348 : BitVec 32 := 0#32
  let c1_i32_350 : BitVec 32 := 1#32
  let arg15 : BitVec 32 := Scf.iv c0_i32_348 c1_i32_350 k0_t3
  let v2356 : Index := Scalar.indexCast arg15
  let c976 : Index := 976#32
  ![1, v2356.toNat, 976]
def k0_off927 (k0_t3 : Fin k0_t3_loop.trips) : Fin 3 → Nat :=
  let c1_i32_1473 : BitVec 32 := 1#32
  let v2359 : Index := Scalar.indexCast c1_i32_1473
  let c0_i32_348 : BitVec 32 := 0#32
  let c1_i32_350 : BitVec 32 := 1#32
  let arg15 : BitVec 32 := Scf.iv c0_i32_348 c1_i32_350 k0_t3
  let v2360 : Index := Scalar.indexCast arg15
  let c992 : Index := 992#32
  ![1, v2360.toNat, 992]
def k0_off928 (k0_t3 : Fin k0_t3_loop.trips) : Fin 3 → Nat :=
  let c1_i32_1474 : BitVec 32 := 1#32
  let v2363 : Index := Scalar.indexCast c1_i32_1474
  let c0_i32_348 : BitVec 32 := 0#32
  let c1_i32_350 : BitVec 32 := 1#32
  let arg15 : BitVec 32 := Scf.iv c0_i32_348 c1_i32_350 k0_t3
  let v2364 : Index := Scalar.indexCast arg15
  let c1008 : Index := 1008#32
  ![1, v2364.toNat, 1008]
def k0_off929 (k0_t3 : Fin k0_t3_loop.trips) : Fin 4 → Nat :=
  let c1_i32_1475 : BitVec 32 := 1#32
  let v2367 : Index := Scalar.indexCast c1_i32_1475
  let c0_i32_1476 : BitVec 32 := 0#32
  let v2368 : Index := Scalar.indexCast c0_i32_1476
  let c0_i32_348 : BitVec 32 := 0#32
  let c1_i32_350 : BitVec 32 := 1#32
  let arg15 : BitVec 32 := Scf.iv c0_i32_348 c1_i32_350 k0_t3
  let v2369 : Index := Scalar.indexCast arg15
  let c512_1477 : Index := 512#32
  ![1, 0, v2369.toNat, 512]
def k0_off930 (k0_t3 : Fin k0_t3_loop.trips) : Fin 4 → Nat :=
  let c1_i32_1478 : BitVec 32 := 1#32
  let v2373 : Index := Scalar.indexCast c1_i32_1478
  let c0_i32_1479 : BitVec 32 := 0#32
  let v2374 : Index := Scalar.indexCast c0_i32_1479
  let c0_i32_348 : BitVec 32 := 0#32
  let c1_i32_350 : BitVec 32 := 1#32
  let arg15 : BitVec 32 := Scf.iv c0_i32_348 c1_i32_350 k0_t3
  let v2375 : Index := Scalar.indexCast arg15
  let c512_1480 : Index := 512#32
  ![1, 0, v2375.toNat, 512]
def k0_off931 (k0_t3 : Fin k0_t3_loop.trips) : Fin 4 → Nat :=
  let c1_i32_1481 : BitVec 32 := 1#32
  let v2379 : Index := Scalar.indexCast c1_i32_1481
  let c0_i32_1482 : BitVec 32 := 0#32
  let v2380 : Index := Scalar.indexCast c0_i32_1482
  let c0_i32_348 : BitVec 32 := 0#32
  let c1_i32_350 : BitVec 32 := 1#32
  let arg15 : BitVec 32 := Scf.iv c0_i32_348 c1_i32_350 k0_t3
  let v2381 : Index := Scalar.indexCast arg15
  let c528_1483 : Index := 528#32
  ![1, 0, v2381.toNat, 528]
def k0_off932 (k0_t3 : Fin k0_t3_loop.trips) : Fin 4 → Nat :=
  let c1_i32_1484 : BitVec 32 := 1#32
  let v2385 : Index := Scalar.indexCast c1_i32_1484
  let c0_i32_1485 : BitVec 32 := 0#32
  let v2386 : Index := Scalar.indexCast c0_i32_1485
  let c0_i32_348 : BitVec 32 := 0#32
  let c1_i32_350 : BitVec 32 := 1#32
  let arg15 : BitVec 32 := Scf.iv c0_i32_348 c1_i32_350 k0_t3
  let v2387 : Index := Scalar.indexCast arg15
  let c528_1486 : Index := 528#32
  ![1, 0, v2387.toNat, 528]
def k0_off933 (k0_t3 : Fin k0_t3_loop.trips) : Fin 4 → Nat :=
  let c1_i32_1487 : BitVec 32 := 1#32
  let v2391 : Index := Scalar.indexCast c1_i32_1487
  let c0_i32_1488 : BitVec 32 := 0#32
  let v2392 : Index := Scalar.indexCast c0_i32_1488
  let c0_i32_348 : BitVec 32 := 0#32
  let c1_i32_350 : BitVec 32 := 1#32
  let arg15 : BitVec 32 := Scf.iv c0_i32_348 c1_i32_350 k0_t3
  let v2393 : Index := Scalar.indexCast arg15
  let c544_1489 : Index := 544#32
  ![1, 0, v2393.toNat, 544]
def k0_off934 (k0_t3 : Fin k0_t3_loop.trips) : Fin 4 → Nat :=
  let c1_i32_1490 : BitVec 32 := 1#32
  let v2397 : Index := Scalar.indexCast c1_i32_1490
  let c0_i32_1491 : BitVec 32 := 0#32
  let v2398 : Index := Scalar.indexCast c0_i32_1491
  let c0_i32_348 : BitVec 32 := 0#32
  let c1_i32_350 : BitVec 32 := 1#32
  let arg15 : BitVec 32 := Scf.iv c0_i32_348 c1_i32_350 k0_t3
  let v2399 : Index := Scalar.indexCast arg15
  let c544_1492 : Index := 544#32
  ![1, 0, v2399.toNat, 544]
def k0_off935 (k0_t3 : Fin k0_t3_loop.trips) : Fin 4 → Nat :=
  let c1_i32_1493 : BitVec 32 := 1#32
  let v2403 : Index := Scalar.indexCast c1_i32_1493
  let c0_i32_1494 : BitVec 32 := 0#32
  let v2404 : Index := Scalar.indexCast c0_i32_1494
  let c0_i32_348 : BitVec 32 := 0#32
  let c1_i32_350 : BitVec 32 := 1#32
  let arg15 : BitVec 32 := Scf.iv c0_i32_348 c1_i32_350 k0_t3
  let v2405 : Index := Scalar.indexCast arg15
  let c560_1495 : Index := 560#32
  ![1, 0, v2405.toNat, 560]
def k0_off936 (k0_t3 : Fin k0_t3_loop.trips) : Fin 4 → Nat :=
  let c1_i32_1496 : BitVec 32 := 1#32
  let v2409 : Index := Scalar.indexCast c1_i32_1496
  let c0_i32_1497 : BitVec 32 := 0#32
  let v2410 : Index := Scalar.indexCast c0_i32_1497
  let c0_i32_348 : BitVec 32 := 0#32
  let c1_i32_350 : BitVec 32 := 1#32
  let arg15 : BitVec 32 := Scf.iv c0_i32_348 c1_i32_350 k0_t3
  let v2411 : Index := Scalar.indexCast arg15
  let c560_1498 : Index := 560#32
  ![1, 0, v2411.toNat, 560]
def k0_off937 (k0_t3 : Fin k0_t3_loop.trips) : Fin 4 → Nat :=
  let c1_i32_1499 : BitVec 32 := 1#32
  let v2415 : Index := Scalar.indexCast c1_i32_1499
  let c0_i32_1500 : BitVec 32 := 0#32
  let v2416 : Index := Scalar.indexCast c0_i32_1500
  let c0_i32_348 : BitVec 32 := 0#32
  let c1_i32_350 : BitVec 32 := 1#32
  let arg15 : BitVec 32 := Scf.iv c0_i32_348 c1_i32_350 k0_t3
  let v2417 : Index := Scalar.indexCast arg15
  let c576_1501 : Index := 576#32
  ![1, 0, v2417.toNat, 576]
def k0_off938 (k0_t3 : Fin k0_t3_loop.trips) : Fin 4 → Nat :=
  let c1_i32_1502 : BitVec 32 := 1#32
  let v2421 : Index := Scalar.indexCast c1_i32_1502
  let c0_i32_1503 : BitVec 32 := 0#32
  let v2422 : Index := Scalar.indexCast c0_i32_1503
  let c0_i32_348 : BitVec 32 := 0#32
  let c1_i32_350 : BitVec 32 := 1#32
  let arg15 : BitVec 32 := Scf.iv c0_i32_348 c1_i32_350 k0_t3
  let v2423 : Index := Scalar.indexCast arg15
  let c576_1504 : Index := 576#32
  ![1, 0, v2423.toNat, 576]
def k0_off939 (k0_t3 : Fin k0_t3_loop.trips) : Fin 4 → Nat :=
  let c1_i32_1505 : BitVec 32 := 1#32
  let v2427 : Index := Scalar.indexCast c1_i32_1505
  let c0_i32_1506 : BitVec 32 := 0#32
  let v2428 : Index := Scalar.indexCast c0_i32_1506
  let c0_i32_348 : BitVec 32 := 0#32
  let c1_i32_350 : BitVec 32 := 1#32
  let arg15 : BitVec 32 := Scf.iv c0_i32_348 c1_i32_350 k0_t3
  let v2429 : Index := Scalar.indexCast arg15
  let c592_1507 : Index := 592#32
  ![1, 0, v2429.toNat, 592]
def k0_off940 (k0_t3 : Fin k0_t3_loop.trips) : Fin 4 → Nat :=
  let c1_i32_1508 : BitVec 32 := 1#32
  let v2433 : Index := Scalar.indexCast c1_i32_1508
  let c0_i32_1509 : BitVec 32 := 0#32
  let v2434 : Index := Scalar.indexCast c0_i32_1509
  let c0_i32_348 : BitVec 32 := 0#32
  let c1_i32_350 : BitVec 32 := 1#32
  let arg15 : BitVec 32 := Scf.iv c0_i32_348 c1_i32_350 k0_t3
  let v2435 : Index := Scalar.indexCast arg15
  let c592_1510 : Index := 592#32
  ![1, 0, v2435.toNat, 592]
def k0_off941 (k0_t3 : Fin k0_t3_loop.trips) : Fin 4 → Nat :=
  let c1_i32_1511 : BitVec 32 := 1#32
  let v2439 : Index := Scalar.indexCast c1_i32_1511
  let c0_i32_1512 : BitVec 32 := 0#32
  let v2440 : Index := Scalar.indexCast c0_i32_1512
  let c0_i32_348 : BitVec 32 := 0#32
  let c1_i32_350 : BitVec 32 := 1#32
  let arg15 : BitVec 32 := Scf.iv c0_i32_348 c1_i32_350 k0_t3
  let v2441 : Index := Scalar.indexCast arg15
  let c608_1513 : Index := 608#32
  ![1, 0, v2441.toNat, 608]
def k0_off942 (k0_t3 : Fin k0_t3_loop.trips) : Fin 4 → Nat :=
  let c1_i32_1514 : BitVec 32 := 1#32
  let v2445 : Index := Scalar.indexCast c1_i32_1514
  let c0_i32_1515 : BitVec 32 := 0#32
  let v2446 : Index := Scalar.indexCast c0_i32_1515
  let c0_i32_348 : BitVec 32 := 0#32
  let c1_i32_350 : BitVec 32 := 1#32
  let arg15 : BitVec 32 := Scf.iv c0_i32_348 c1_i32_350 k0_t3
  let v2447 : Index := Scalar.indexCast arg15
  let c608_1516 : Index := 608#32
  ![1, 0, v2447.toNat, 608]
def k0_off943 (k0_t3 : Fin k0_t3_loop.trips) : Fin 4 → Nat :=
  let c1_i32_1517 : BitVec 32 := 1#32
  let v2451 : Index := Scalar.indexCast c1_i32_1517
  let c0_i32_1518 : BitVec 32 := 0#32
  let v2452 : Index := Scalar.indexCast c0_i32_1518
  let c0_i32_348 : BitVec 32 := 0#32
  let c1_i32_350 : BitVec 32 := 1#32
  let arg15 : BitVec 32 := Scf.iv c0_i32_348 c1_i32_350 k0_t3
  let v2453 : Index := Scalar.indexCast arg15
  let c624_1519 : Index := 624#32
  ![1, 0, v2453.toNat, 624]
def k0_off944 (k0_t3 : Fin k0_t3_loop.trips) : Fin 4 → Nat :=
  let c1_i32_1520 : BitVec 32 := 1#32
  let v2457 : Index := Scalar.indexCast c1_i32_1520
  let c0_i32_1521 : BitVec 32 := 0#32
  let v2458 : Index := Scalar.indexCast c0_i32_1521
  let c0_i32_348 : BitVec 32 := 0#32
  let c1_i32_350 : BitVec 32 := 1#32
  let arg15 : BitVec 32 := Scf.iv c0_i32_348 c1_i32_350 k0_t3
  let v2459 : Index := Scalar.indexCast arg15
  let c624_1522 : Index := 624#32
  ![1, 0, v2459.toNat, 624]
def k0_off945 (k0_t3 : Fin k0_t3_loop.trips) : Fin 4 → Nat :=
  let c1_i32_1523 : BitVec 32 := 1#32
  let v2463 : Index := Scalar.indexCast c1_i32_1523
  let c0_i32_1524 : BitVec 32 := 0#32
  let v2464 : Index := Scalar.indexCast c0_i32_1524
  let c0_i32_348 : BitVec 32 := 0#32
  let c1_i32_350 : BitVec 32 := 1#32
  let arg15 : BitVec 32 := Scf.iv c0_i32_348 c1_i32_350 k0_t3
  let v2465 : Index := Scalar.indexCast arg15
  let c640_1525 : Index := 640#32
  ![1, 0, v2465.toNat, 640]
def k0_off946 (k0_t3 : Fin k0_t3_loop.trips) : Fin 4 → Nat :=
  let c1_i32_1526 : BitVec 32 := 1#32
  let v2469 : Index := Scalar.indexCast c1_i32_1526
  let c0_i32_1527 : BitVec 32 := 0#32
  let v2470 : Index := Scalar.indexCast c0_i32_1527
  let c0_i32_348 : BitVec 32 := 0#32
  let c1_i32_350 : BitVec 32 := 1#32
  let arg15 : BitVec 32 := Scf.iv c0_i32_348 c1_i32_350 k0_t3
  let v2471 : Index := Scalar.indexCast arg15
  let c640_1528 : Index := 640#32
  ![1, 0, v2471.toNat, 640]
def k0_off947 (k0_t3 : Fin k0_t3_loop.trips) : Fin 4 → Nat :=
  let c1_i32_1529 : BitVec 32 := 1#32
  let v2475 : Index := Scalar.indexCast c1_i32_1529
  let c0_i32_1530 : BitVec 32 := 0#32
  let v2476 : Index := Scalar.indexCast c0_i32_1530
  let c0_i32_348 : BitVec 32 := 0#32
  let c1_i32_350 : BitVec 32 := 1#32
  let arg15 : BitVec 32 := Scf.iv c0_i32_348 c1_i32_350 k0_t3
  let v2477 : Index := Scalar.indexCast arg15
  let c656_1531 : Index := 656#32
  ![1, 0, v2477.toNat, 656]
def k0_off948 (k0_t3 : Fin k0_t3_loop.trips) : Fin 4 → Nat :=
  let c1_i32_1532 : BitVec 32 := 1#32
  let v2481 : Index := Scalar.indexCast c1_i32_1532
  let c0_i32_1533 : BitVec 32 := 0#32
  let v2482 : Index := Scalar.indexCast c0_i32_1533
  let c0_i32_348 : BitVec 32 := 0#32
  let c1_i32_350 : BitVec 32 := 1#32
  let arg15 : BitVec 32 := Scf.iv c0_i32_348 c1_i32_350 k0_t3
  let v2483 : Index := Scalar.indexCast arg15
  let c656_1534 : Index := 656#32
  ![1, 0, v2483.toNat, 656]
def k0_off949 (k0_t3 : Fin k0_t3_loop.trips) : Fin 4 → Nat :=
  let c1_i32_1535 : BitVec 32 := 1#32
  let v2487 : Index := Scalar.indexCast c1_i32_1535
  let c0_i32_1536 : BitVec 32 := 0#32
  let v2488 : Index := Scalar.indexCast c0_i32_1536
  let c0_i32_348 : BitVec 32 := 0#32
  let c1_i32_350 : BitVec 32 := 1#32
  let arg15 : BitVec 32 := Scf.iv c0_i32_348 c1_i32_350 k0_t3
  let v2489 : Index := Scalar.indexCast arg15
  let c672_1537 : Index := 672#32
  ![1, 0, v2489.toNat, 672]
def k0_off950 (k0_t3 : Fin k0_t3_loop.trips) : Fin 4 → Nat :=
  let c1_i32_1538 : BitVec 32 := 1#32
  let v2493 : Index := Scalar.indexCast c1_i32_1538
  let c0_i32_1539 : BitVec 32 := 0#32
  let v2494 : Index := Scalar.indexCast c0_i32_1539
  let c0_i32_348 : BitVec 32 := 0#32
  let c1_i32_350 : BitVec 32 := 1#32
  let arg15 : BitVec 32 := Scf.iv c0_i32_348 c1_i32_350 k0_t3
  let v2495 : Index := Scalar.indexCast arg15
  let c672_1540 : Index := 672#32
  ![1, 0, v2495.toNat, 672]
def k0_off951 (k0_t3 : Fin k0_t3_loop.trips) : Fin 4 → Nat :=
  let c1_i32_1541 : BitVec 32 := 1#32
  let v2499 : Index := Scalar.indexCast c1_i32_1541
  let c0_i32_1542 : BitVec 32 := 0#32
  let v2500 : Index := Scalar.indexCast c0_i32_1542
  let c0_i32_348 : BitVec 32 := 0#32
  let c1_i32_350 : BitVec 32 := 1#32
  let arg15 : BitVec 32 := Scf.iv c0_i32_348 c1_i32_350 k0_t3
  let v2501 : Index := Scalar.indexCast arg15
  let c688_1543 : Index := 688#32
  ![1, 0, v2501.toNat, 688]
def k0_off952 (k0_t3 : Fin k0_t3_loop.trips) : Fin 4 → Nat :=
  let c1_i32_1544 : BitVec 32 := 1#32
  let v2505 : Index := Scalar.indexCast c1_i32_1544
  let c0_i32_1545 : BitVec 32 := 0#32
  let v2506 : Index := Scalar.indexCast c0_i32_1545
  let c0_i32_348 : BitVec 32 := 0#32
  let c1_i32_350 : BitVec 32 := 1#32
  let arg15 : BitVec 32 := Scf.iv c0_i32_348 c1_i32_350 k0_t3
  let v2507 : Index := Scalar.indexCast arg15
  let c688_1546 : Index := 688#32
  ![1, 0, v2507.toNat, 688]
def k0_off953 (k0_t3 : Fin k0_t3_loop.trips) : Fin 4 → Nat :=
  let c1_i32_1547 : BitVec 32 := 1#32
  let v2511 : Index := Scalar.indexCast c1_i32_1547
  let c0_i32_1548 : BitVec 32 := 0#32
  let v2512 : Index := Scalar.indexCast c0_i32_1548
  let c0_i32_348 : BitVec 32 := 0#32
  let c1_i32_350 : BitVec 32 := 1#32
  let arg15 : BitVec 32 := Scf.iv c0_i32_348 c1_i32_350 k0_t3
  let v2513 : Index := Scalar.indexCast arg15
  let c704_1549 : Index := 704#32
  ![1, 0, v2513.toNat, 704]
def k0_off954 (k0_t3 : Fin k0_t3_loop.trips) : Fin 4 → Nat :=
  let c1_i32_1550 : BitVec 32 := 1#32
  let v2517 : Index := Scalar.indexCast c1_i32_1550
  let c0_i32_1551 : BitVec 32 := 0#32
  let v2518 : Index := Scalar.indexCast c0_i32_1551
  let c0_i32_348 : BitVec 32 := 0#32
  let c1_i32_350 : BitVec 32 := 1#32
  let arg15 : BitVec 32 := Scf.iv c0_i32_348 c1_i32_350 k0_t3
  let v2519 : Index := Scalar.indexCast arg15
  let c704_1552 : Index := 704#32
  ![1, 0, v2519.toNat, 704]
def k0_off955 (k0_t3 : Fin k0_t3_loop.trips) : Fin 4 → Nat :=
  let c1_i32_1553 : BitVec 32 := 1#32
  let v2523 : Index := Scalar.indexCast c1_i32_1553
  let c0_i32_1554 : BitVec 32 := 0#32
  let v2524 : Index := Scalar.indexCast c0_i32_1554
  let c0_i32_348 : BitVec 32 := 0#32
  let c1_i32_350 : BitVec 32 := 1#32
  let arg15 : BitVec 32 := Scf.iv c0_i32_348 c1_i32_350 k0_t3
  let v2525 : Index := Scalar.indexCast arg15
  let c720_1555 : Index := 720#32
  ![1, 0, v2525.toNat, 720]
def k0_off956 (k0_t3 : Fin k0_t3_loop.trips) : Fin 4 → Nat :=
  let c1_i32_1556 : BitVec 32 := 1#32
  let v2529 : Index := Scalar.indexCast c1_i32_1556
  let c0_i32_1557 : BitVec 32 := 0#32
  let v2530 : Index := Scalar.indexCast c0_i32_1557
  let c0_i32_348 : BitVec 32 := 0#32
  let c1_i32_350 : BitVec 32 := 1#32
  let arg15 : BitVec 32 := Scf.iv c0_i32_348 c1_i32_350 k0_t3
  let v2531 : Index := Scalar.indexCast arg15
  let c720_1558 : Index := 720#32
  ![1, 0, v2531.toNat, 720]
def k0_off957 (k0_t3 : Fin k0_t3_loop.trips) : Fin 4 → Nat :=
  let c1_i32_1559 : BitVec 32 := 1#32
  let v2535 : Index := Scalar.indexCast c1_i32_1559
  let c0_i32_1560 : BitVec 32 := 0#32
  let v2536 : Index := Scalar.indexCast c0_i32_1560
  let c0_i32_348 : BitVec 32 := 0#32
  let c1_i32_350 : BitVec 32 := 1#32
  let arg15 : BitVec 32 := Scf.iv c0_i32_348 c1_i32_350 k0_t3
  let v2537 : Index := Scalar.indexCast arg15
  let c736_1561 : Index := 736#32
  ![1, 0, v2537.toNat, 736]
def k0_off958 (k0_t3 : Fin k0_t3_loop.trips) : Fin 4 → Nat :=
  let c1_i32_1562 : BitVec 32 := 1#32
  let v2541 : Index := Scalar.indexCast c1_i32_1562
  let c0_i32_1563 : BitVec 32 := 0#32
  let v2542 : Index := Scalar.indexCast c0_i32_1563
  let c0_i32_348 : BitVec 32 := 0#32
  let c1_i32_350 : BitVec 32 := 1#32
  let arg15 : BitVec 32 := Scf.iv c0_i32_348 c1_i32_350 k0_t3
  let v2543 : Index := Scalar.indexCast arg15
  let c736_1564 : Index := 736#32
  ![1, 0, v2543.toNat, 736]
def k0_off959 (k0_t3 : Fin k0_t3_loop.trips) : Fin 4 → Nat :=
  let c1_i32_1565 : BitVec 32 := 1#32
  let v2547 : Index := Scalar.indexCast c1_i32_1565
  let c0_i32_1566 : BitVec 32 := 0#32
  let v2548 : Index := Scalar.indexCast c0_i32_1566
  let c0_i32_348 : BitVec 32 := 0#32
  let c1_i32_350 : BitVec 32 := 1#32
  let arg15 : BitVec 32 := Scf.iv c0_i32_348 c1_i32_350 k0_t3
  let v2549 : Index := Scalar.indexCast arg15
  let c752_1567 : Index := 752#32
  ![1, 0, v2549.toNat, 752]
def k0_off960 (k0_t3 : Fin k0_t3_loop.trips) : Fin 4 → Nat :=
  let c1_i32_1568 : BitVec 32 := 1#32
  let v2553 : Index := Scalar.indexCast c1_i32_1568
  let c0_i32_1569 : BitVec 32 := 0#32
  let v2554 : Index := Scalar.indexCast c0_i32_1569
  let c0_i32_348 : BitVec 32 := 0#32
  let c1_i32_350 : BitVec 32 := 1#32
  let arg15 : BitVec 32 := Scf.iv c0_i32_348 c1_i32_350 k0_t3
  let v2555 : Index := Scalar.indexCast arg15
  let c752_1570 : Index := 752#32
  ![1, 0, v2555.toNat, 752]
def k0_off961 (k0_t3 : Fin k0_t3_loop.trips) : Fin 4 → Nat :=
  let c1_i32_1571 : BitVec 32 := 1#32
  let v2559 : Index := Scalar.indexCast c1_i32_1571
  let c0_i32_1572 : BitVec 32 := 0#32
  let v2560 : Index := Scalar.indexCast c0_i32_1572
  let c0_i32_348 : BitVec 32 := 0#32
  let c1_i32_350 : BitVec 32 := 1#32
  let arg15 : BitVec 32 := Scf.iv c0_i32_348 c1_i32_350 k0_t3
  let v2561 : Index := Scalar.indexCast arg15
  let c768_1573 : Index := 768#32
  ![1, 0, v2561.toNat, 768]
def k0_off962 (k0_t3 : Fin k0_t3_loop.trips) : Fin 4 → Nat :=
  let c1_i32_1574 : BitVec 32 := 1#32
  let v2565 : Index := Scalar.indexCast c1_i32_1574
  let c0_i32_1575 : BitVec 32 := 0#32
  let v2566 : Index := Scalar.indexCast c0_i32_1575
  let c0_i32_348 : BitVec 32 := 0#32
  let c1_i32_350 : BitVec 32 := 1#32
  let arg15 : BitVec 32 := Scf.iv c0_i32_348 c1_i32_350 k0_t3
  let v2567 : Index := Scalar.indexCast arg15
  let c768_1576 : Index := 768#32
  ![1, 0, v2567.toNat, 768]
def k0_off963 (k0_t3 : Fin k0_t3_loop.trips) : Fin 4 → Nat :=
  let c1_i32_1577 : BitVec 32 := 1#32
  let v2571 : Index := Scalar.indexCast c1_i32_1577
  let c0_i32_1578 : BitVec 32 := 0#32
  let v2572 : Index := Scalar.indexCast c0_i32_1578
  let c0_i32_348 : BitVec 32 := 0#32
  let c1_i32_350 : BitVec 32 := 1#32
  let arg15 : BitVec 32 := Scf.iv c0_i32_348 c1_i32_350 k0_t3
  let v2573 : Index := Scalar.indexCast arg15
  let c784_1579 : Index := 784#32
  ![1, 0, v2573.toNat, 784]
def k0_off964 (k0_t3 : Fin k0_t3_loop.trips) : Fin 4 → Nat :=
  let c1_i32_1580 : BitVec 32 := 1#32
  let v2577 : Index := Scalar.indexCast c1_i32_1580
  let c0_i32_1581 : BitVec 32 := 0#32
  let v2578 : Index := Scalar.indexCast c0_i32_1581
  let c0_i32_348 : BitVec 32 := 0#32
  let c1_i32_350 : BitVec 32 := 1#32
  let arg15 : BitVec 32 := Scf.iv c0_i32_348 c1_i32_350 k0_t3
  let v2579 : Index := Scalar.indexCast arg15
  let c784_1582 : Index := 784#32
  ![1, 0, v2579.toNat, 784]
def k0_off965 (k0_t3 : Fin k0_t3_loop.trips) : Fin 4 → Nat :=
  let c1_i32_1583 : BitVec 32 := 1#32
  let v2583 : Index := Scalar.indexCast c1_i32_1583
  let c0_i32_1584 : BitVec 32 := 0#32
  let v2584 : Index := Scalar.indexCast c0_i32_1584
  let c0_i32_348 : BitVec 32 := 0#32
  let c1_i32_350 : BitVec 32 := 1#32
  let arg15 : BitVec 32 := Scf.iv c0_i32_348 c1_i32_350 k0_t3
  let v2585 : Index := Scalar.indexCast arg15
  let c800_1585 : Index := 800#32
  ![1, 0, v2585.toNat, 800]
def k0_off966 (k0_t3 : Fin k0_t3_loop.trips) : Fin 4 → Nat :=
  let c1_i32_1586 : BitVec 32 := 1#32
  let v2589 : Index := Scalar.indexCast c1_i32_1586
  let c0_i32_1587 : BitVec 32 := 0#32
  let v2590 : Index := Scalar.indexCast c0_i32_1587
  let c0_i32_348 : BitVec 32 := 0#32
  let c1_i32_350 : BitVec 32 := 1#32
  let arg15 : BitVec 32 := Scf.iv c0_i32_348 c1_i32_350 k0_t3
  let v2591 : Index := Scalar.indexCast arg15
  let c800_1588 : Index := 800#32
  ![1, 0, v2591.toNat, 800]
def k0_off967 (k0_t3 : Fin k0_t3_loop.trips) : Fin 4 → Nat :=
  let c1_i32_1589 : BitVec 32 := 1#32
  let v2595 : Index := Scalar.indexCast c1_i32_1589
  let c0_i32_1590 : BitVec 32 := 0#32
  let v2596 : Index := Scalar.indexCast c0_i32_1590
  let c0_i32_348 : BitVec 32 := 0#32
  let c1_i32_350 : BitVec 32 := 1#32
  let arg15 : BitVec 32 := Scf.iv c0_i32_348 c1_i32_350 k0_t3
  let v2597 : Index := Scalar.indexCast arg15
  let c816_1591 : Index := 816#32
  ![1, 0, v2597.toNat, 816]
def k0_off968 (k0_t3 : Fin k0_t3_loop.trips) : Fin 4 → Nat :=
  let c1_i32_1592 : BitVec 32 := 1#32
  let v2601 : Index := Scalar.indexCast c1_i32_1592
  let c0_i32_1593 : BitVec 32 := 0#32
  let v2602 : Index := Scalar.indexCast c0_i32_1593
  let c0_i32_348 : BitVec 32 := 0#32
  let c1_i32_350 : BitVec 32 := 1#32
  let arg15 : BitVec 32 := Scf.iv c0_i32_348 c1_i32_350 k0_t3
  let v2603 : Index := Scalar.indexCast arg15
  let c816_1594 : Index := 816#32
  ![1, 0, v2603.toNat, 816]
def k0_off969 (k0_t3 : Fin k0_t3_loop.trips) : Fin 4 → Nat :=
  let c1_i32_1595 : BitVec 32 := 1#32
  let v2607 : Index := Scalar.indexCast c1_i32_1595
  let c0_i32_1596 : BitVec 32 := 0#32
  let v2608 : Index := Scalar.indexCast c0_i32_1596
  let c0_i32_348 : BitVec 32 := 0#32
  let c1_i32_350 : BitVec 32 := 1#32
  let arg15 : BitVec 32 := Scf.iv c0_i32_348 c1_i32_350 k0_t3
  let v2609 : Index := Scalar.indexCast arg15
  let c832_1597 : Index := 832#32
  ![1, 0, v2609.toNat, 832]
def k0_off970 (k0_t3 : Fin k0_t3_loop.trips) : Fin 4 → Nat :=
  let c1_i32_1598 : BitVec 32 := 1#32
  let v2613 : Index := Scalar.indexCast c1_i32_1598
  let c0_i32_1599 : BitVec 32 := 0#32
  let v2614 : Index := Scalar.indexCast c0_i32_1599
  let c0_i32_348 : BitVec 32 := 0#32
  let c1_i32_350 : BitVec 32 := 1#32
  let arg15 : BitVec 32 := Scf.iv c0_i32_348 c1_i32_350 k0_t3
  let v2615 : Index := Scalar.indexCast arg15
  let c832_1600 : Index := 832#32
  ![1, 0, v2615.toNat, 832]
def k0_off971 (k0_t3 : Fin k0_t3_loop.trips) : Fin 4 → Nat :=
  let c1_i32_1601 : BitVec 32 := 1#32
  let v2619 : Index := Scalar.indexCast c1_i32_1601
  let c0_i32_1602 : BitVec 32 := 0#32
  let v2620 : Index := Scalar.indexCast c0_i32_1602
  let c0_i32_348 : BitVec 32 := 0#32
  let c1_i32_350 : BitVec 32 := 1#32
  let arg15 : BitVec 32 := Scf.iv c0_i32_348 c1_i32_350 k0_t3
  let v2621 : Index := Scalar.indexCast arg15
  let c848_1603 : Index := 848#32
  ![1, 0, v2621.toNat, 848]
def k0_off972 (k0_t3 : Fin k0_t3_loop.trips) : Fin 4 → Nat :=
  let c1_i32_1604 : BitVec 32 := 1#32
  let v2625 : Index := Scalar.indexCast c1_i32_1604
  let c0_i32_1605 : BitVec 32 := 0#32
  let v2626 : Index := Scalar.indexCast c0_i32_1605
  let c0_i32_348 : BitVec 32 := 0#32
  let c1_i32_350 : BitVec 32 := 1#32
  let arg15 : BitVec 32 := Scf.iv c0_i32_348 c1_i32_350 k0_t3
  let v2627 : Index := Scalar.indexCast arg15
  let c848_1606 : Index := 848#32
  ![1, 0, v2627.toNat, 848]
def k0_off973 (k0_t3 : Fin k0_t3_loop.trips) : Fin 4 → Nat :=
  let c1_i32_1607 : BitVec 32 := 1#32
  let v2631 : Index := Scalar.indexCast c1_i32_1607
  let c0_i32_1608 : BitVec 32 := 0#32
  let v2632 : Index := Scalar.indexCast c0_i32_1608
  let c0_i32_348 : BitVec 32 := 0#32
  let c1_i32_350 : BitVec 32 := 1#32
  let arg15 : BitVec 32 := Scf.iv c0_i32_348 c1_i32_350 k0_t3
  let v2633 : Index := Scalar.indexCast arg15
  let c864_1609 : Index := 864#32
  ![1, 0, v2633.toNat, 864]
def k0_off974 (k0_t3 : Fin k0_t3_loop.trips) : Fin 4 → Nat :=
  let c1_i32_1610 : BitVec 32 := 1#32
  let v2637 : Index := Scalar.indexCast c1_i32_1610
  let c0_i32_1611 : BitVec 32 := 0#32
  let v2638 : Index := Scalar.indexCast c0_i32_1611
  let c0_i32_348 : BitVec 32 := 0#32
  let c1_i32_350 : BitVec 32 := 1#32
  let arg15 : BitVec 32 := Scf.iv c0_i32_348 c1_i32_350 k0_t3
  let v2639 : Index := Scalar.indexCast arg15
  let c864_1612 : Index := 864#32
  ![1, 0, v2639.toNat, 864]
def k0_off975 (k0_t3 : Fin k0_t3_loop.trips) : Fin 4 → Nat :=
  let c1_i32_1613 : BitVec 32 := 1#32
  let v2643 : Index := Scalar.indexCast c1_i32_1613
  let c0_i32_1614 : BitVec 32 := 0#32
  let v2644 : Index := Scalar.indexCast c0_i32_1614
  let c0_i32_348 : BitVec 32 := 0#32
  let c1_i32_350 : BitVec 32 := 1#32
  let arg15 : BitVec 32 := Scf.iv c0_i32_348 c1_i32_350 k0_t3
  let v2645 : Index := Scalar.indexCast arg15
  let c880_1615 : Index := 880#32
  ![1, 0, v2645.toNat, 880]
def k0_off976 (k0_t3 : Fin k0_t3_loop.trips) : Fin 4 → Nat :=
  let c1_i32_1616 : BitVec 32 := 1#32
  let v2649 : Index := Scalar.indexCast c1_i32_1616
  let c0_i32_1617 : BitVec 32 := 0#32
  let v2650 : Index := Scalar.indexCast c0_i32_1617
  let c0_i32_348 : BitVec 32 := 0#32
  let c1_i32_350 : BitVec 32 := 1#32
  let arg15 : BitVec 32 := Scf.iv c0_i32_348 c1_i32_350 k0_t3
  let v2651 : Index := Scalar.indexCast arg15
  let c880_1618 : Index := 880#32
  ![1, 0, v2651.toNat, 880]
def k0_off977 (k0_t3 : Fin k0_t3_loop.trips) : Fin 4 → Nat :=
  let c1_i32_1619 : BitVec 32 := 1#32
  let v2655 : Index := Scalar.indexCast c1_i32_1619
  let c0_i32_1620 : BitVec 32 := 0#32
  let v2656 : Index := Scalar.indexCast c0_i32_1620
  let c0_i32_348 : BitVec 32 := 0#32
  let c1_i32_350 : BitVec 32 := 1#32
  let arg15 : BitVec 32 := Scf.iv c0_i32_348 c1_i32_350 k0_t3
  let v2657 : Index := Scalar.indexCast arg15
  let c896_1621 : Index := 896#32
  ![1, 0, v2657.toNat, 896]
def k0_off978 (k0_t3 : Fin k0_t3_loop.trips) : Fin 4 → Nat :=
  let c1_i32_1622 : BitVec 32 := 1#32
  let v2661 : Index := Scalar.indexCast c1_i32_1622
  let c0_i32_1623 : BitVec 32 := 0#32
  let v2662 : Index := Scalar.indexCast c0_i32_1623
  let c0_i32_348 : BitVec 32 := 0#32
  let c1_i32_350 : BitVec 32 := 1#32
  let arg15 : BitVec 32 := Scf.iv c0_i32_348 c1_i32_350 k0_t3
  let v2663 : Index := Scalar.indexCast arg15
  let c896_1624 : Index := 896#32
  ![1, 0, v2663.toNat, 896]
def k0_off979 (k0_t3 : Fin k0_t3_loop.trips) : Fin 4 → Nat :=
  let c1_i32_1625 : BitVec 32 := 1#32
  let v2667 : Index := Scalar.indexCast c1_i32_1625
  let c0_i32_1626 : BitVec 32 := 0#32
  let v2668 : Index := Scalar.indexCast c0_i32_1626
  let c0_i32_348 : BitVec 32 := 0#32
  let c1_i32_350 : BitVec 32 := 1#32
  let arg15 : BitVec 32 := Scf.iv c0_i32_348 c1_i32_350 k0_t3
  let v2669 : Index := Scalar.indexCast arg15
  let c912_1627 : Index := 912#32
  ![1, 0, v2669.toNat, 912]
def k0_off980 (k0_t3 : Fin k0_t3_loop.trips) : Fin 4 → Nat :=
  let c1_i32_1628 : BitVec 32 := 1#32
  let v2673 : Index := Scalar.indexCast c1_i32_1628
  let c0_i32_1629 : BitVec 32 := 0#32
  let v2674 : Index := Scalar.indexCast c0_i32_1629
  let c0_i32_348 : BitVec 32 := 0#32
  let c1_i32_350 : BitVec 32 := 1#32
  let arg15 : BitVec 32 := Scf.iv c0_i32_348 c1_i32_350 k0_t3
  let v2675 : Index := Scalar.indexCast arg15
  let c912_1630 : Index := 912#32
  ![1, 0, v2675.toNat, 912]
def k0_off981 (k0_t3 : Fin k0_t3_loop.trips) : Fin 4 → Nat :=
  let c1_i32_1631 : BitVec 32 := 1#32
  let v2679 : Index := Scalar.indexCast c1_i32_1631
  let c0_i32_1632 : BitVec 32 := 0#32
  let v2680 : Index := Scalar.indexCast c0_i32_1632
  let c0_i32_348 : BitVec 32 := 0#32
  let c1_i32_350 : BitVec 32 := 1#32
  let arg15 : BitVec 32 := Scf.iv c0_i32_348 c1_i32_350 k0_t3
  let v2681 : Index := Scalar.indexCast arg15
  let c928_1633 : Index := 928#32
  ![1, 0, v2681.toNat, 928]
def k0_off982 (k0_t3 : Fin k0_t3_loop.trips) : Fin 4 → Nat :=
  let c1_i32_1634 : BitVec 32 := 1#32
  let v2685 : Index := Scalar.indexCast c1_i32_1634
  let c0_i32_1635 : BitVec 32 := 0#32
  let v2686 : Index := Scalar.indexCast c0_i32_1635
  let c0_i32_348 : BitVec 32 := 0#32
  let c1_i32_350 : BitVec 32 := 1#32
  let arg15 : BitVec 32 := Scf.iv c0_i32_348 c1_i32_350 k0_t3
  let v2687 : Index := Scalar.indexCast arg15
  let c928_1636 : Index := 928#32
  ![1, 0, v2687.toNat, 928]
def k0_off983 (k0_t3 : Fin k0_t3_loop.trips) : Fin 4 → Nat :=
  let c1_i32_1637 : BitVec 32 := 1#32
  let v2691 : Index := Scalar.indexCast c1_i32_1637
  let c0_i32_1638 : BitVec 32 := 0#32
  let v2692 : Index := Scalar.indexCast c0_i32_1638
  let c0_i32_348 : BitVec 32 := 0#32
  let c1_i32_350 : BitVec 32 := 1#32
  let arg15 : BitVec 32 := Scf.iv c0_i32_348 c1_i32_350 k0_t3
  let v2693 : Index := Scalar.indexCast arg15
  let c944_1639 : Index := 944#32
  ![1, 0, v2693.toNat, 944]
def k0_off984 (k0_t3 : Fin k0_t3_loop.trips) : Fin 4 → Nat :=
  let c1_i32_1640 : BitVec 32 := 1#32
  let v2697 : Index := Scalar.indexCast c1_i32_1640
  let c0_i32_1641 : BitVec 32 := 0#32
  let v2698 : Index := Scalar.indexCast c0_i32_1641
  let c0_i32_348 : BitVec 32 := 0#32
  let c1_i32_350 : BitVec 32 := 1#32
  let arg15 : BitVec 32 := Scf.iv c0_i32_348 c1_i32_350 k0_t3
  let v2699 : Index := Scalar.indexCast arg15
  let c944_1642 : Index := 944#32
  ![1, 0, v2699.toNat, 944]
def k0_off985 (k0_t3 : Fin k0_t3_loop.trips) : Fin 4 → Nat :=
  let c1_i32_1643 : BitVec 32 := 1#32
  let v2703 : Index := Scalar.indexCast c1_i32_1643
  let c0_i32_1644 : BitVec 32 := 0#32
  let v2704 : Index := Scalar.indexCast c0_i32_1644
  let c0_i32_348 : BitVec 32 := 0#32
  let c1_i32_350 : BitVec 32 := 1#32
  let arg15 : BitVec 32 := Scf.iv c0_i32_348 c1_i32_350 k0_t3
  let v2705 : Index := Scalar.indexCast arg15
  let c960_1645 : Index := 960#32
  ![1, 0, v2705.toNat, 960]
def k0_off986 (k0_t3 : Fin k0_t3_loop.trips) : Fin 4 → Nat :=
  let c1_i32_1646 : BitVec 32 := 1#32
  let v2709 : Index := Scalar.indexCast c1_i32_1646
  let c0_i32_1647 : BitVec 32 := 0#32
  let v2710 : Index := Scalar.indexCast c0_i32_1647
  let c0_i32_348 : BitVec 32 := 0#32
  let c1_i32_350 : BitVec 32 := 1#32
  let arg15 : BitVec 32 := Scf.iv c0_i32_348 c1_i32_350 k0_t3
  let v2711 : Index := Scalar.indexCast arg15
  let c960_1648 : Index := 960#32
  ![1, 0, v2711.toNat, 960]
def k0_off987 (k0_t3 : Fin k0_t3_loop.trips) : Fin 4 → Nat :=
  let c1_i32_1649 : BitVec 32 := 1#32
  let v2715 : Index := Scalar.indexCast c1_i32_1649
  let c0_i32_1650 : BitVec 32 := 0#32
  let v2716 : Index := Scalar.indexCast c0_i32_1650
  let c0_i32_348 : BitVec 32 := 0#32
  let c1_i32_350 : BitVec 32 := 1#32
  let arg15 : BitVec 32 := Scf.iv c0_i32_348 c1_i32_350 k0_t3
  let v2717 : Index := Scalar.indexCast arg15
  let c976_1651 : Index := 976#32
  ![1, 0, v2717.toNat, 976]
def k0_off988 (k0_t3 : Fin k0_t3_loop.trips) : Fin 4 → Nat :=
  let c1_i32_1652 : BitVec 32 := 1#32
  let v2721 : Index := Scalar.indexCast c1_i32_1652
  let c0_i32_1653 : BitVec 32 := 0#32
  let v2722 : Index := Scalar.indexCast c0_i32_1653
  let c0_i32_348 : BitVec 32 := 0#32
  let c1_i32_350 : BitVec 32 := 1#32
  let arg15 : BitVec 32 := Scf.iv c0_i32_348 c1_i32_350 k0_t3
  let v2723 : Index := Scalar.indexCast arg15
  let c976_1654 : Index := 976#32
  ![1, 0, v2723.toNat, 976]
def k0_off989 (k0_t3 : Fin k0_t3_loop.trips) : Fin 4 → Nat :=
  let c1_i32_1655 : BitVec 32 := 1#32
  let v2727 : Index := Scalar.indexCast c1_i32_1655
  let c0_i32_1656 : BitVec 32 := 0#32
  let v2728 : Index := Scalar.indexCast c0_i32_1656
  let c0_i32_348 : BitVec 32 := 0#32
  let c1_i32_350 : BitVec 32 := 1#32
  let arg15 : BitVec 32 := Scf.iv c0_i32_348 c1_i32_350 k0_t3
  let v2729 : Index := Scalar.indexCast arg15
  let c992_1657 : Index := 992#32
  ![1, 0, v2729.toNat, 992]
def k0_off990 (k0_t3 : Fin k0_t3_loop.trips) : Fin 4 → Nat :=
  let c1_i32_1658 : BitVec 32 := 1#32
  let v2733 : Index := Scalar.indexCast c1_i32_1658
  let c0_i32_1659 : BitVec 32 := 0#32
  let v2734 : Index := Scalar.indexCast c0_i32_1659
  let c0_i32_348 : BitVec 32 := 0#32
  let c1_i32_350 : BitVec 32 := 1#32
  let arg15 : BitVec 32 := Scf.iv c0_i32_348 c1_i32_350 k0_t3
  let v2735 : Index := Scalar.indexCast arg15
  let c992_1660 : Index := 992#32
  ![1, 0, v2735.toNat, 992]
def k0_off991 (k0_t3 : Fin k0_t3_loop.trips) : Fin 4 → Nat :=
  let c1_i32_1661 : BitVec 32 := 1#32
  let v2739 : Index := Scalar.indexCast c1_i32_1661
  let c0_i32_1662 : BitVec 32 := 0#32
  let v2740 : Index := Scalar.indexCast c0_i32_1662
  let c0_i32_348 : BitVec 32 := 0#32
  let c1_i32_350 : BitVec 32 := 1#32
  let arg15 : BitVec 32 := Scf.iv c0_i32_348 c1_i32_350 k0_t3
  let v2741 : Index := Scalar.indexCast arg15
  let c1008_1663 : Index := 1008#32
  ![1, 0, v2741.toNat, 1008]
def k0_off992 (k0_t3 : Fin k0_t3_loop.trips) : Fin 4 → Nat :=
  let c1_i32_1664 : BitVec 32 := 1#32
  let v2745 : Index := Scalar.indexCast c1_i32_1664
  let c0_i32_1665 : BitVec 32 := 0#32
  let v2746 : Index := Scalar.indexCast c0_i32_1665
  let c0_i32_348 : BitVec 32 := 0#32
  let c1_i32_350 : BitVec 32 := 1#32
  let arg15 : BitVec 32 := Scf.iv c0_i32_348 c1_i32_350 k0_t3
  let v2747 : Index := Scalar.indexCast arg15
  let c1008_1666 : Index := 1008#32
  ![1, 0, v2747.toNat, 1008]
def k0_off993 (k0_t3 : Fin k0_t3_loop.trips) : Fin 4 → Nat :=
  let c1_i32_1667 : BitVec 32 := 1#32
  let v2751 : Index := Scalar.indexCast c1_i32_1667
  let c1_i32_1668 : BitVec 32 := 1#32
  let v2752 : Index := Scalar.indexCast c1_i32_1668
  let c0_i32_348 : BitVec 32 := 0#32
  let c1_i32_350 : BitVec 32 := 1#32
  let arg15 : BitVec 32 := Scf.iv c0_i32_348 c1_i32_350 k0_t3
  let v2753 : Index := Scalar.indexCast arg15
  let c512_1669 : Index := 512#32
  ![1, 1, v2753.toNat, 512]
def k0_off994 (k0_t3 : Fin k0_t3_loop.trips) : Fin 4 → Nat :=
  let c1_i32_1670 : BitVec 32 := 1#32
  let v2757 : Index := Scalar.indexCast c1_i32_1670
  let c1_i32_1671 : BitVec 32 := 1#32
  let v2758 : Index := Scalar.indexCast c1_i32_1671
  let c0_i32_348 : BitVec 32 := 0#32
  let c1_i32_350 : BitVec 32 := 1#32
  let arg15 : BitVec 32 := Scf.iv c0_i32_348 c1_i32_350 k0_t3
  let v2759 : Index := Scalar.indexCast arg15
  let c512_1672 : Index := 512#32
  ![1, 1, v2759.toNat, 512]
def k0_off995 (k0_t3 : Fin k0_t3_loop.trips) : Fin 4 → Nat :=
  let c1_i32_1673 : BitVec 32 := 1#32
  let v2763 : Index := Scalar.indexCast c1_i32_1673
  let c1_i32_1674 : BitVec 32 := 1#32
  let v2764 : Index := Scalar.indexCast c1_i32_1674
  let c0_i32_348 : BitVec 32 := 0#32
  let c1_i32_350 : BitVec 32 := 1#32
  let arg15 : BitVec 32 := Scf.iv c0_i32_348 c1_i32_350 k0_t3
  let v2765 : Index := Scalar.indexCast arg15
  let c528_1675 : Index := 528#32
  ![1, 1, v2765.toNat, 528]
def k0_off996 (k0_t3 : Fin k0_t3_loop.trips) : Fin 4 → Nat :=
  let c1_i32_1676 : BitVec 32 := 1#32
  let v2769 : Index := Scalar.indexCast c1_i32_1676
  let c1_i32_1677 : BitVec 32 := 1#32
  let v2770 : Index := Scalar.indexCast c1_i32_1677
  let c0_i32_348 : BitVec 32 := 0#32
  let c1_i32_350 : BitVec 32 := 1#32
  let arg15 : BitVec 32 := Scf.iv c0_i32_348 c1_i32_350 k0_t3
  let v2771 : Index := Scalar.indexCast arg15
  let c528_1678 : Index := 528#32
  ![1, 1, v2771.toNat, 528]
def k0_off997 (k0_t3 : Fin k0_t3_loop.trips) : Fin 4 → Nat :=
  let c1_i32_1679 : BitVec 32 := 1#32
  let v2775 : Index := Scalar.indexCast c1_i32_1679
  let c1_i32_1680 : BitVec 32 := 1#32
  let v2776 : Index := Scalar.indexCast c1_i32_1680
  let c0_i32_348 : BitVec 32 := 0#32
  let c1_i32_350 : BitVec 32 := 1#32
  let arg15 : BitVec 32 := Scf.iv c0_i32_348 c1_i32_350 k0_t3
  let v2777 : Index := Scalar.indexCast arg15
  let c544_1681 : Index := 544#32
  ![1, 1, v2777.toNat, 544]
def k0_off998 (k0_t3 : Fin k0_t3_loop.trips) : Fin 4 → Nat :=
  let c1_i32_1682 : BitVec 32 := 1#32
  let v2781 : Index := Scalar.indexCast c1_i32_1682
  let c1_i32_1683 : BitVec 32 := 1#32
  let v2782 : Index := Scalar.indexCast c1_i32_1683
  let c0_i32_348 : BitVec 32 := 0#32
  let c1_i32_350 : BitVec 32 := 1#32
  let arg15 : BitVec 32 := Scf.iv c0_i32_348 c1_i32_350 k0_t3
  let v2783 : Index := Scalar.indexCast arg15
  let c544_1684 : Index := 544#32
  ![1, 1, v2783.toNat, 544]
def k0_off999 (k0_t3 : Fin k0_t3_loop.trips) : Fin 4 → Nat :=
  let c1_i32_1685 : BitVec 32 := 1#32
  let v2787 : Index := Scalar.indexCast c1_i32_1685
  let c1_i32_1686 : BitVec 32 := 1#32
  let v2788 : Index := Scalar.indexCast c1_i32_1686
  let c0_i32_348 : BitVec 32 := 0#32
  let c1_i32_350 : BitVec 32 := 1#32
  let arg15 : BitVec 32 := Scf.iv c0_i32_348 c1_i32_350 k0_t3
  let v2789 : Index := Scalar.indexCast arg15
  let c560_1687 : Index := 560#32
  ![1, 1, v2789.toNat, 560]
def k0_off1000 (k0_t3 : Fin k0_t3_loop.trips) : Fin 4 → Nat :=
  let c1_i32_1688 : BitVec 32 := 1#32
  let v2793 : Index := Scalar.indexCast c1_i32_1688
  let c1_i32_1689 : BitVec 32 := 1#32
  let v2794 : Index := Scalar.indexCast c1_i32_1689
  let c0_i32_348 : BitVec 32 := 0#32
  let c1_i32_350 : BitVec 32 := 1#32
  let arg15 : BitVec 32 := Scf.iv c0_i32_348 c1_i32_350 k0_t3
  let v2795 : Index := Scalar.indexCast arg15
  let c560_1690 : Index := 560#32
  ![1, 1, v2795.toNat, 560]
def k0_off1001 (k0_t3 : Fin k0_t3_loop.trips) : Fin 4 → Nat :=
  let c1_i32_1691 : BitVec 32 := 1#32
  let v2799 : Index := Scalar.indexCast c1_i32_1691
  let c1_i32_1692 : BitVec 32 := 1#32
  let v2800 : Index := Scalar.indexCast c1_i32_1692
  let c0_i32_348 : BitVec 32 := 0#32
  let c1_i32_350 : BitVec 32 := 1#32
  let arg15 : BitVec 32 := Scf.iv c0_i32_348 c1_i32_350 k0_t3
  let v2801 : Index := Scalar.indexCast arg15
  let c576_1693 : Index := 576#32
  ![1, 1, v2801.toNat, 576]
def k0_off1002 (k0_t3 : Fin k0_t3_loop.trips) : Fin 4 → Nat :=
  let c1_i32_1694 : BitVec 32 := 1#32
  let v2805 : Index := Scalar.indexCast c1_i32_1694
  let c1_i32_1695 : BitVec 32 := 1#32
  let v2806 : Index := Scalar.indexCast c1_i32_1695
  let c0_i32_348 : BitVec 32 := 0#32
  let c1_i32_350 : BitVec 32 := 1#32
  let arg15 : BitVec 32 := Scf.iv c0_i32_348 c1_i32_350 k0_t3
  let v2807 : Index := Scalar.indexCast arg15
  let c576_1696 : Index := 576#32
  ![1, 1, v2807.toNat, 576]
def k0_off1003 (k0_t3 : Fin k0_t3_loop.trips) : Fin 4 → Nat :=
  let c1_i32_1697 : BitVec 32 := 1#32
  let v2811 : Index := Scalar.indexCast c1_i32_1697
  let c1_i32_1698 : BitVec 32 := 1#32
  let v2812 : Index := Scalar.indexCast c1_i32_1698
  let c0_i32_348 : BitVec 32 := 0#32
  let c1_i32_350 : BitVec 32 := 1#32
  let arg15 : BitVec 32 := Scf.iv c0_i32_348 c1_i32_350 k0_t3
  let v2813 : Index := Scalar.indexCast arg15
  let c592_1699 : Index := 592#32
  ![1, 1, v2813.toNat, 592]
def k0_off1004 (k0_t3 : Fin k0_t3_loop.trips) : Fin 4 → Nat :=
  let c1_i32_1700 : BitVec 32 := 1#32
  let v2817 : Index := Scalar.indexCast c1_i32_1700
  let c1_i32_1701 : BitVec 32 := 1#32
  let v2818 : Index := Scalar.indexCast c1_i32_1701
  let c0_i32_348 : BitVec 32 := 0#32
  let c1_i32_350 : BitVec 32 := 1#32
  let arg15 : BitVec 32 := Scf.iv c0_i32_348 c1_i32_350 k0_t3
  let v2819 : Index := Scalar.indexCast arg15
  let c592_1702 : Index := 592#32
  ![1, 1, v2819.toNat, 592]
def k0_off1005 (k0_t3 : Fin k0_t3_loop.trips) : Fin 4 → Nat :=
  let c1_i32_1703 : BitVec 32 := 1#32
  let v2823 : Index := Scalar.indexCast c1_i32_1703
  let c1_i32_1704 : BitVec 32 := 1#32
  let v2824 : Index := Scalar.indexCast c1_i32_1704
  let c0_i32_348 : BitVec 32 := 0#32
  let c1_i32_350 : BitVec 32 := 1#32
  let arg15 : BitVec 32 := Scf.iv c0_i32_348 c1_i32_350 k0_t3
  let v2825 : Index := Scalar.indexCast arg15
  let c608_1705 : Index := 608#32
  ![1, 1, v2825.toNat, 608]
def k0_off1006 (k0_t3 : Fin k0_t3_loop.trips) : Fin 4 → Nat :=
  let c1_i32_1706 : BitVec 32 := 1#32
  let v2829 : Index := Scalar.indexCast c1_i32_1706
  let c1_i32_1707 : BitVec 32 := 1#32
  let v2830 : Index := Scalar.indexCast c1_i32_1707
  let c0_i32_348 : BitVec 32 := 0#32
  let c1_i32_350 : BitVec 32 := 1#32
  let arg15 : BitVec 32 := Scf.iv c0_i32_348 c1_i32_350 k0_t3
  let v2831 : Index := Scalar.indexCast arg15
  let c608_1708 : Index := 608#32
  ![1, 1, v2831.toNat, 608]
def k0_off1007 (k0_t3 : Fin k0_t3_loop.trips) : Fin 4 → Nat :=
  let c1_i32_1709 : BitVec 32 := 1#32
  let v2835 : Index := Scalar.indexCast c1_i32_1709
  let c1_i32_1710 : BitVec 32 := 1#32
  let v2836 : Index := Scalar.indexCast c1_i32_1710
  let c0_i32_348 : BitVec 32 := 0#32
  let c1_i32_350 : BitVec 32 := 1#32
  let arg15 : BitVec 32 := Scf.iv c0_i32_348 c1_i32_350 k0_t3
  let v2837 : Index := Scalar.indexCast arg15
  let c624_1711 : Index := 624#32
  ![1, 1, v2837.toNat, 624]
def k0_off1008 (k0_t3 : Fin k0_t3_loop.trips) : Fin 4 → Nat :=
  let c1_i32_1712 : BitVec 32 := 1#32
  let v2841 : Index := Scalar.indexCast c1_i32_1712
  let c1_i32_1713 : BitVec 32 := 1#32
  let v2842 : Index := Scalar.indexCast c1_i32_1713
  let c0_i32_348 : BitVec 32 := 0#32
  let c1_i32_350 : BitVec 32 := 1#32
  let arg15 : BitVec 32 := Scf.iv c0_i32_348 c1_i32_350 k0_t3
  let v2843 : Index := Scalar.indexCast arg15
  let c624_1714 : Index := 624#32
  ![1, 1, v2843.toNat, 624]
def k0_off1009 (k0_t3 : Fin k0_t3_loop.trips) : Fin 4 → Nat :=
  let c1_i32_1715 : BitVec 32 := 1#32
  let v2847 : Index := Scalar.indexCast c1_i32_1715
  let c1_i32_1716 : BitVec 32 := 1#32
  let v2848 : Index := Scalar.indexCast c1_i32_1716
  let c0_i32_348 : BitVec 32 := 0#32
  let c1_i32_350 : BitVec 32 := 1#32
  let arg15 : BitVec 32 := Scf.iv c0_i32_348 c1_i32_350 k0_t3
  let v2849 : Index := Scalar.indexCast arg15
  let c640_1717 : Index := 640#32
  ![1, 1, v2849.toNat, 640]
def k0_off1010 (k0_t3 : Fin k0_t3_loop.trips) : Fin 4 → Nat :=
  let c1_i32_1718 : BitVec 32 := 1#32
  let v2853 : Index := Scalar.indexCast c1_i32_1718
  let c1_i32_1719 : BitVec 32 := 1#32
  let v2854 : Index := Scalar.indexCast c1_i32_1719
  let c0_i32_348 : BitVec 32 := 0#32
  let c1_i32_350 : BitVec 32 := 1#32
  let arg15 : BitVec 32 := Scf.iv c0_i32_348 c1_i32_350 k0_t3
  let v2855 : Index := Scalar.indexCast arg15
  let c640_1720 : Index := 640#32
  ![1, 1, v2855.toNat, 640]
def k0_off1011 (k0_t3 : Fin k0_t3_loop.trips) : Fin 4 → Nat :=
  let c1_i32_1721 : BitVec 32 := 1#32
  let v2859 : Index := Scalar.indexCast c1_i32_1721
  let c1_i32_1722 : BitVec 32 := 1#32
  let v2860 : Index := Scalar.indexCast c1_i32_1722
  let c0_i32_348 : BitVec 32 := 0#32
  let c1_i32_350 : BitVec 32 := 1#32
  let arg15 : BitVec 32 := Scf.iv c0_i32_348 c1_i32_350 k0_t3
  let v2861 : Index := Scalar.indexCast arg15
  let c656_1723 : Index := 656#32
  ![1, 1, v2861.toNat, 656]
def k0_off1012 (k0_t3 : Fin k0_t3_loop.trips) : Fin 4 → Nat :=
  let c1_i32_1724 : BitVec 32 := 1#32
  let v2865 : Index := Scalar.indexCast c1_i32_1724
  let c1_i32_1725 : BitVec 32 := 1#32
  let v2866 : Index := Scalar.indexCast c1_i32_1725
  let c0_i32_348 : BitVec 32 := 0#32
  let c1_i32_350 : BitVec 32 := 1#32
  let arg15 : BitVec 32 := Scf.iv c0_i32_348 c1_i32_350 k0_t3
  let v2867 : Index := Scalar.indexCast arg15
  let c656_1726 : Index := 656#32
  ![1, 1, v2867.toNat, 656]
def k0_off1013 (k0_t3 : Fin k0_t3_loop.trips) : Fin 4 → Nat :=
  let c1_i32_1727 : BitVec 32 := 1#32
  let v2871 : Index := Scalar.indexCast c1_i32_1727
  let c1_i32_1728 : BitVec 32 := 1#32
  let v2872 : Index := Scalar.indexCast c1_i32_1728
  let c0_i32_348 : BitVec 32 := 0#32
  let c1_i32_350 : BitVec 32 := 1#32
  let arg15 : BitVec 32 := Scf.iv c0_i32_348 c1_i32_350 k0_t3
  let v2873 : Index := Scalar.indexCast arg15
  let c672_1729 : Index := 672#32
  ![1, 1, v2873.toNat, 672]
def k0_off1014 (k0_t3 : Fin k0_t3_loop.trips) : Fin 4 → Nat :=
  let c1_i32_1730 : BitVec 32 := 1#32
  let v2877 : Index := Scalar.indexCast c1_i32_1730
  let c1_i32_1731 : BitVec 32 := 1#32
  let v2878 : Index := Scalar.indexCast c1_i32_1731
  let c0_i32_348 : BitVec 32 := 0#32
  let c1_i32_350 : BitVec 32 := 1#32
  let arg15 : BitVec 32 := Scf.iv c0_i32_348 c1_i32_350 k0_t3
  let v2879 : Index := Scalar.indexCast arg15
  let c672_1732 : Index := 672#32
  ![1, 1, v2879.toNat, 672]
def k0_off1015 (k0_t3 : Fin k0_t3_loop.trips) : Fin 4 → Nat :=
  let c1_i32_1733 : BitVec 32 := 1#32
  let v2883 : Index := Scalar.indexCast c1_i32_1733
  let c1_i32_1734 : BitVec 32 := 1#32
  let v2884 : Index := Scalar.indexCast c1_i32_1734
  let c0_i32_348 : BitVec 32 := 0#32
  let c1_i32_350 : BitVec 32 := 1#32
  let arg15 : BitVec 32 := Scf.iv c0_i32_348 c1_i32_350 k0_t3
  let v2885 : Index := Scalar.indexCast arg15
  let c688_1735 : Index := 688#32
  ![1, 1, v2885.toNat, 688]
def k0_off1016 (k0_t3 : Fin k0_t3_loop.trips) : Fin 4 → Nat :=
  let c1_i32_1736 : BitVec 32 := 1#32
  let v2889 : Index := Scalar.indexCast c1_i32_1736
  let c1_i32_1737 : BitVec 32 := 1#32
  let v2890 : Index := Scalar.indexCast c1_i32_1737
  let c0_i32_348 : BitVec 32 := 0#32
  let c1_i32_350 : BitVec 32 := 1#32
  let arg15 : BitVec 32 := Scf.iv c0_i32_348 c1_i32_350 k0_t3
  let v2891 : Index := Scalar.indexCast arg15
  let c688_1738 : Index := 688#32
  ![1, 1, v2891.toNat, 688]
def k0_off1017 (k0_t3 : Fin k0_t3_loop.trips) : Fin 4 → Nat :=
  let c1_i32_1739 : BitVec 32 := 1#32
  let v2895 : Index := Scalar.indexCast c1_i32_1739
  let c1_i32_1740 : BitVec 32 := 1#32
  let v2896 : Index := Scalar.indexCast c1_i32_1740
  let c0_i32_348 : BitVec 32 := 0#32
  let c1_i32_350 : BitVec 32 := 1#32
  let arg15 : BitVec 32 := Scf.iv c0_i32_348 c1_i32_350 k0_t3
  let v2897 : Index := Scalar.indexCast arg15
  let c704_1741 : Index := 704#32
  ![1, 1, v2897.toNat, 704]
def k0_off1018 (k0_t3 : Fin k0_t3_loop.trips) : Fin 4 → Nat :=
  let c1_i32_1742 : BitVec 32 := 1#32
  let v2901 : Index := Scalar.indexCast c1_i32_1742
  let c1_i32_1743 : BitVec 32 := 1#32
  let v2902 : Index := Scalar.indexCast c1_i32_1743
  let c0_i32_348 : BitVec 32 := 0#32
  let c1_i32_350 : BitVec 32 := 1#32
  let arg15 : BitVec 32 := Scf.iv c0_i32_348 c1_i32_350 k0_t3
  let v2903 : Index := Scalar.indexCast arg15
  let c704_1744 : Index := 704#32
  ![1, 1, v2903.toNat, 704]
def k0_off1019 (k0_t3 : Fin k0_t3_loop.trips) : Fin 4 → Nat :=
  let c1_i32_1745 : BitVec 32 := 1#32
  let v2907 : Index := Scalar.indexCast c1_i32_1745
  let c1_i32_1746 : BitVec 32 := 1#32
  let v2908 : Index := Scalar.indexCast c1_i32_1746
  let c0_i32_348 : BitVec 32 := 0#32
  let c1_i32_350 : BitVec 32 := 1#32
  let arg15 : BitVec 32 := Scf.iv c0_i32_348 c1_i32_350 k0_t3
  let v2909 : Index := Scalar.indexCast arg15
  let c720_1747 : Index := 720#32
  ![1, 1, v2909.toNat, 720]
def k0_off1020 (k0_t3 : Fin k0_t3_loop.trips) : Fin 4 → Nat :=
  let c1_i32_1748 : BitVec 32 := 1#32
  let v2913 : Index := Scalar.indexCast c1_i32_1748
  let c1_i32_1749 : BitVec 32 := 1#32
  let v2914 : Index := Scalar.indexCast c1_i32_1749
  let c0_i32_348 : BitVec 32 := 0#32
  let c1_i32_350 : BitVec 32 := 1#32
  let arg15 : BitVec 32 := Scf.iv c0_i32_348 c1_i32_350 k0_t3
  let v2915 : Index := Scalar.indexCast arg15
  let c720_1750 : Index := 720#32
  ![1, 1, v2915.toNat, 720]
def k0_off1021 (k0_t3 : Fin k0_t3_loop.trips) : Fin 4 → Nat :=
  let c1_i32_1751 : BitVec 32 := 1#32
  let v2919 : Index := Scalar.indexCast c1_i32_1751
  let c1_i32_1752 : BitVec 32 := 1#32
  let v2920 : Index := Scalar.indexCast c1_i32_1752
  let c0_i32_348 : BitVec 32 := 0#32
  let c1_i32_350 : BitVec 32 := 1#32
  let arg15 : BitVec 32 := Scf.iv c0_i32_348 c1_i32_350 k0_t3
  let v2921 : Index := Scalar.indexCast arg15
  let c736_1753 : Index := 736#32
  ![1, 1, v2921.toNat, 736]
def k0_off1022 (k0_t3 : Fin k0_t3_loop.trips) : Fin 4 → Nat :=
  let c1_i32_1754 : BitVec 32 := 1#32
  let v2925 : Index := Scalar.indexCast c1_i32_1754
  let c1_i32_1755 : BitVec 32 := 1#32
  let v2926 : Index := Scalar.indexCast c1_i32_1755
  let c0_i32_348 : BitVec 32 := 0#32
  let c1_i32_350 : BitVec 32 := 1#32
  let arg15 : BitVec 32 := Scf.iv c0_i32_348 c1_i32_350 k0_t3
  let v2927 : Index := Scalar.indexCast arg15
  let c736_1756 : Index := 736#32
  ![1, 1, v2927.toNat, 736]
def k0_off1023 (k0_t3 : Fin k0_t3_loop.trips) : Fin 4 → Nat :=
  let c1_i32_1757 : BitVec 32 := 1#32
  let v2931 : Index := Scalar.indexCast c1_i32_1757
  let c1_i32_1758 : BitVec 32 := 1#32
  let v2932 : Index := Scalar.indexCast c1_i32_1758
  let c0_i32_348 : BitVec 32 := 0#32
  let c1_i32_350 : BitVec 32 := 1#32
  let arg15 : BitVec 32 := Scf.iv c0_i32_348 c1_i32_350 k0_t3
  let v2933 : Index := Scalar.indexCast arg15
  let c752_1759 : Index := 752#32
  ![1, 1, v2933.toNat, 752]
def k0_off1024 (k0_t3 : Fin k0_t3_loop.trips) : Fin 4 → Nat :=
  let c1_i32_1760 : BitVec 32 := 1#32
  let v2937 : Index := Scalar.indexCast c1_i32_1760
  let c1_i32_1761 : BitVec 32 := 1#32
  let v2938 : Index := Scalar.indexCast c1_i32_1761
  let c0_i32_348 : BitVec 32 := 0#32
  let c1_i32_350 : BitVec 32 := 1#32
  let arg15 : BitVec 32 := Scf.iv c0_i32_348 c1_i32_350 k0_t3
  let v2939 : Index := Scalar.indexCast arg15
  let c752_1762 : Index := 752#32
  ![1, 1, v2939.toNat, 752]
def k0_off1025 (k0_t3 : Fin k0_t3_loop.trips) : Fin 4 → Nat :=
  let c1_i32_1763 : BitVec 32 := 1#32
  let v2943 : Index := Scalar.indexCast c1_i32_1763
  let c1_i32_1764 : BitVec 32 := 1#32
  let v2944 : Index := Scalar.indexCast c1_i32_1764
  let c0_i32_348 : BitVec 32 := 0#32
  let c1_i32_350 : BitVec 32 := 1#32
  let arg15 : BitVec 32 := Scf.iv c0_i32_348 c1_i32_350 k0_t3
  let v2945 : Index := Scalar.indexCast arg15
  let c768_1765 : Index := 768#32
  ![1, 1, v2945.toNat, 768]
def k0_off1026 (k0_t3 : Fin k0_t3_loop.trips) : Fin 4 → Nat :=
  let c1_i32_1766 : BitVec 32 := 1#32
  let v2949 : Index := Scalar.indexCast c1_i32_1766
  let c1_i32_1767 : BitVec 32 := 1#32
  let v2950 : Index := Scalar.indexCast c1_i32_1767
  let c0_i32_348 : BitVec 32 := 0#32
  let c1_i32_350 : BitVec 32 := 1#32
  let arg15 : BitVec 32 := Scf.iv c0_i32_348 c1_i32_350 k0_t3
  let v2951 : Index := Scalar.indexCast arg15
  let c768_1768 : Index := 768#32
  ![1, 1, v2951.toNat, 768]
def k0_off1027 (k0_t3 : Fin k0_t3_loop.trips) : Fin 4 → Nat :=
  let c1_i32_1769 : BitVec 32 := 1#32
  let v2955 : Index := Scalar.indexCast c1_i32_1769
  let c1_i32_1770 : BitVec 32 := 1#32
  let v2956 : Index := Scalar.indexCast c1_i32_1770
  let c0_i32_348 : BitVec 32 := 0#32
  let c1_i32_350 : BitVec 32 := 1#32
  let arg15 : BitVec 32 := Scf.iv c0_i32_348 c1_i32_350 k0_t3
  let v2957 : Index := Scalar.indexCast arg15
  let c784_1771 : Index := 784#32
  ![1, 1, v2957.toNat, 784]
def k0_off1028 (k0_t3 : Fin k0_t3_loop.trips) : Fin 4 → Nat :=
  let c1_i32_1772 : BitVec 32 := 1#32
  let v2961 : Index := Scalar.indexCast c1_i32_1772
  let c1_i32_1773 : BitVec 32 := 1#32
  let v2962 : Index := Scalar.indexCast c1_i32_1773
  let c0_i32_348 : BitVec 32 := 0#32
  let c1_i32_350 : BitVec 32 := 1#32
  let arg15 : BitVec 32 := Scf.iv c0_i32_348 c1_i32_350 k0_t3
  let v2963 : Index := Scalar.indexCast arg15
  let c784_1774 : Index := 784#32
  ![1, 1, v2963.toNat, 784]
def k0_off1029 (k0_t3 : Fin k0_t3_loop.trips) : Fin 4 → Nat :=
  let c1_i32_1775 : BitVec 32 := 1#32
  let v2967 : Index := Scalar.indexCast c1_i32_1775
  let c1_i32_1776 : BitVec 32 := 1#32
  let v2968 : Index := Scalar.indexCast c1_i32_1776
  let c0_i32_348 : BitVec 32 := 0#32
  let c1_i32_350 : BitVec 32 := 1#32
  let arg15 : BitVec 32 := Scf.iv c0_i32_348 c1_i32_350 k0_t3
  let v2969 : Index := Scalar.indexCast arg15
  let c800_1777 : Index := 800#32
  ![1, 1, v2969.toNat, 800]
def k0_off1030 (k0_t3 : Fin k0_t3_loop.trips) : Fin 4 → Nat :=
  let c1_i32_1778 : BitVec 32 := 1#32
  let v2973 : Index := Scalar.indexCast c1_i32_1778
  let c1_i32_1779 : BitVec 32 := 1#32
  let v2974 : Index := Scalar.indexCast c1_i32_1779
  let c0_i32_348 : BitVec 32 := 0#32
  let c1_i32_350 : BitVec 32 := 1#32
  let arg15 : BitVec 32 := Scf.iv c0_i32_348 c1_i32_350 k0_t3
  let v2975 : Index := Scalar.indexCast arg15
  let c800_1780 : Index := 800#32
  ![1, 1, v2975.toNat, 800]
def k0_off1031 (k0_t3 : Fin k0_t3_loop.trips) : Fin 4 → Nat :=
  let c1_i32_1781 : BitVec 32 := 1#32
  let v2979 : Index := Scalar.indexCast c1_i32_1781
  let c1_i32_1782 : BitVec 32 := 1#32
  let v2980 : Index := Scalar.indexCast c1_i32_1782
  let c0_i32_348 : BitVec 32 := 0#32
  let c1_i32_350 : BitVec 32 := 1#32
  let arg15 : BitVec 32 := Scf.iv c0_i32_348 c1_i32_350 k0_t3
  let v2981 : Index := Scalar.indexCast arg15
  let c816_1783 : Index := 816#32
  ![1, 1, v2981.toNat, 816]
def k0_off1032 (k0_t3 : Fin k0_t3_loop.trips) : Fin 4 → Nat :=
  let c1_i32_1784 : BitVec 32 := 1#32
  let v2985 : Index := Scalar.indexCast c1_i32_1784
  let c1_i32_1785 : BitVec 32 := 1#32
  let v2986 : Index := Scalar.indexCast c1_i32_1785
  let c0_i32_348 : BitVec 32 := 0#32
  let c1_i32_350 : BitVec 32 := 1#32
  let arg15 : BitVec 32 := Scf.iv c0_i32_348 c1_i32_350 k0_t3
  let v2987 : Index := Scalar.indexCast arg15
  let c816_1786 : Index := 816#32
  ![1, 1, v2987.toNat, 816]
def k0_off1033 (k0_t3 : Fin k0_t3_loop.trips) : Fin 4 → Nat :=
  let c1_i32_1787 : BitVec 32 := 1#32
  let v2991 : Index := Scalar.indexCast c1_i32_1787
  let c1_i32_1788 : BitVec 32 := 1#32
  let v2992 : Index := Scalar.indexCast c1_i32_1788
  let c0_i32_348 : BitVec 32 := 0#32
  let c1_i32_350 : BitVec 32 := 1#32
  let arg15 : BitVec 32 := Scf.iv c0_i32_348 c1_i32_350 k0_t3
  let v2993 : Index := Scalar.indexCast arg15
  let c832_1789 : Index := 832#32
  ![1, 1, v2993.toNat, 832]
def k0_off1034 (k0_t3 : Fin k0_t3_loop.trips) : Fin 4 → Nat :=
  let c1_i32_1790 : BitVec 32 := 1#32
  let v2997 : Index := Scalar.indexCast c1_i32_1790
  let c1_i32_1791 : BitVec 32 := 1#32
  let v2998 : Index := Scalar.indexCast c1_i32_1791
  let c0_i32_348 : BitVec 32 := 0#32
  let c1_i32_350 : BitVec 32 := 1#32
  let arg15 : BitVec 32 := Scf.iv c0_i32_348 c1_i32_350 k0_t3
  let v2999 : Index := Scalar.indexCast arg15
  let c832_1792 : Index := 832#32
  ![1, 1, v2999.toNat, 832]
def k0_off1035 (k0_t3 : Fin k0_t3_loop.trips) : Fin 4 → Nat :=
  let c1_i32_1793 : BitVec 32 := 1#32
  let v3003 : Index := Scalar.indexCast c1_i32_1793
  let c1_i32_1794 : BitVec 32 := 1#32
  let v3004 : Index := Scalar.indexCast c1_i32_1794
  let c0_i32_348 : BitVec 32 := 0#32
  let c1_i32_350 : BitVec 32 := 1#32
  let arg15 : BitVec 32 := Scf.iv c0_i32_348 c1_i32_350 k0_t3
  let v3005 : Index := Scalar.indexCast arg15
  let c848_1795 : Index := 848#32
  ![1, 1, v3005.toNat, 848]
def k0_off1036 (k0_t3 : Fin k0_t3_loop.trips) : Fin 4 → Nat :=
  let c1_i32_1796 : BitVec 32 := 1#32
  let v3009 : Index := Scalar.indexCast c1_i32_1796
  let c1_i32_1797 : BitVec 32 := 1#32
  let v3010 : Index := Scalar.indexCast c1_i32_1797
  let c0_i32_348 : BitVec 32 := 0#32
  let c1_i32_350 : BitVec 32 := 1#32
  let arg15 : BitVec 32 := Scf.iv c0_i32_348 c1_i32_350 k0_t3
  let v3011 : Index := Scalar.indexCast arg15
  let c848_1798 : Index := 848#32
  ![1, 1, v3011.toNat, 848]
def k0_off1037 (k0_t3 : Fin k0_t3_loop.trips) : Fin 4 → Nat :=
  let c1_i32_1799 : BitVec 32 := 1#32
  let v3015 : Index := Scalar.indexCast c1_i32_1799
  let c1_i32_1800 : BitVec 32 := 1#32
  let v3016 : Index := Scalar.indexCast c1_i32_1800
  let c0_i32_348 : BitVec 32 := 0#32
  let c1_i32_350 : BitVec 32 := 1#32
  let arg15 : BitVec 32 := Scf.iv c0_i32_348 c1_i32_350 k0_t3
  let v3017 : Index := Scalar.indexCast arg15
  let c864_1801 : Index := 864#32
  ![1, 1, v3017.toNat, 864]
def k0_off1038 (k0_t3 : Fin k0_t3_loop.trips) : Fin 4 → Nat :=
  let c1_i32_1802 : BitVec 32 := 1#32
  let v3021 : Index := Scalar.indexCast c1_i32_1802
  let c1_i32_1803 : BitVec 32 := 1#32
  let v3022 : Index := Scalar.indexCast c1_i32_1803
  let c0_i32_348 : BitVec 32 := 0#32
  let c1_i32_350 : BitVec 32 := 1#32
  let arg15 : BitVec 32 := Scf.iv c0_i32_348 c1_i32_350 k0_t3
  let v3023 : Index := Scalar.indexCast arg15
  let c864_1804 : Index := 864#32
  ![1, 1, v3023.toNat, 864]
def k0_off1039 (k0_t3 : Fin k0_t3_loop.trips) : Fin 4 → Nat :=
  let c1_i32_1805 : BitVec 32 := 1#32
  let v3027 : Index := Scalar.indexCast c1_i32_1805
  let c1_i32_1806 : BitVec 32 := 1#32
  let v3028 : Index := Scalar.indexCast c1_i32_1806
  let c0_i32_348 : BitVec 32 := 0#32
  let c1_i32_350 : BitVec 32 := 1#32
  let arg15 : BitVec 32 := Scf.iv c0_i32_348 c1_i32_350 k0_t3
  let v3029 : Index := Scalar.indexCast arg15
  let c880_1807 : Index := 880#32
  ![1, 1, v3029.toNat, 880]
def k0_off1040 (k0_t3 : Fin k0_t3_loop.trips) : Fin 4 → Nat :=
  let c1_i32_1808 : BitVec 32 := 1#32
  let v3033 : Index := Scalar.indexCast c1_i32_1808
  let c1_i32_1809 : BitVec 32 := 1#32
  let v3034 : Index := Scalar.indexCast c1_i32_1809
  let c0_i32_348 : BitVec 32 := 0#32
  let c1_i32_350 : BitVec 32 := 1#32
  let arg15 : BitVec 32 := Scf.iv c0_i32_348 c1_i32_350 k0_t3
  let v3035 : Index := Scalar.indexCast arg15
  let c880_1810 : Index := 880#32
  ![1, 1, v3035.toNat, 880]
def k0_off1041 (k0_t3 : Fin k0_t3_loop.trips) : Fin 4 → Nat :=
  let c1_i32_1811 : BitVec 32 := 1#32
  let v3039 : Index := Scalar.indexCast c1_i32_1811
  let c1_i32_1812 : BitVec 32 := 1#32
  let v3040 : Index := Scalar.indexCast c1_i32_1812
  let c0_i32_348 : BitVec 32 := 0#32
  let c1_i32_350 : BitVec 32 := 1#32
  let arg15 : BitVec 32 := Scf.iv c0_i32_348 c1_i32_350 k0_t3
  let v3041 : Index := Scalar.indexCast arg15
  let c896_1813 : Index := 896#32
  ![1, 1, v3041.toNat, 896]
def k0_off1042 (k0_t3 : Fin k0_t3_loop.trips) : Fin 4 → Nat :=
  let c1_i32_1814 : BitVec 32 := 1#32
  let v3045 : Index := Scalar.indexCast c1_i32_1814
  let c1_i32_1815 : BitVec 32 := 1#32
  let v3046 : Index := Scalar.indexCast c1_i32_1815
  let c0_i32_348 : BitVec 32 := 0#32
  let c1_i32_350 : BitVec 32 := 1#32
  let arg15 : BitVec 32 := Scf.iv c0_i32_348 c1_i32_350 k0_t3
  let v3047 : Index := Scalar.indexCast arg15
  let c896_1816 : Index := 896#32
  ![1, 1, v3047.toNat, 896]
def k0_off1043 (k0_t3 : Fin k0_t3_loop.trips) : Fin 4 → Nat :=
  let c1_i32_1817 : BitVec 32 := 1#32
  let v3051 : Index := Scalar.indexCast c1_i32_1817
  let c1_i32_1818 : BitVec 32 := 1#32
  let v3052 : Index := Scalar.indexCast c1_i32_1818
  let c0_i32_348 : BitVec 32 := 0#32
  let c1_i32_350 : BitVec 32 := 1#32
  let arg15 : BitVec 32 := Scf.iv c0_i32_348 c1_i32_350 k0_t3
  let v3053 : Index := Scalar.indexCast arg15
  let c912_1819 : Index := 912#32
  ![1, 1, v3053.toNat, 912]
def k0_off1044 (k0_t3 : Fin k0_t3_loop.trips) : Fin 4 → Nat :=
  let c1_i32_1820 : BitVec 32 := 1#32
  let v3057 : Index := Scalar.indexCast c1_i32_1820
  let c1_i32_1821 : BitVec 32 := 1#32
  let v3058 : Index := Scalar.indexCast c1_i32_1821
  let c0_i32_348 : BitVec 32 := 0#32
  let c1_i32_350 : BitVec 32 := 1#32
  let arg15 : BitVec 32 := Scf.iv c0_i32_348 c1_i32_350 k0_t3
  let v3059 : Index := Scalar.indexCast arg15
  let c912_1822 : Index := 912#32
  ![1, 1, v3059.toNat, 912]
def k0_off1045 (k0_t3 : Fin k0_t3_loop.trips) : Fin 4 → Nat :=
  let c1_i32_1823 : BitVec 32 := 1#32
  let v3063 : Index := Scalar.indexCast c1_i32_1823
  let c1_i32_1824 : BitVec 32 := 1#32
  let v3064 : Index := Scalar.indexCast c1_i32_1824
  let c0_i32_348 : BitVec 32 := 0#32
  let c1_i32_350 : BitVec 32 := 1#32
  let arg15 : BitVec 32 := Scf.iv c0_i32_348 c1_i32_350 k0_t3
  let v3065 : Index := Scalar.indexCast arg15
  let c928_1825 : Index := 928#32
  ![1, 1, v3065.toNat, 928]
def k0_off1046 (k0_t3 : Fin k0_t3_loop.trips) : Fin 4 → Nat :=
  let c1_i32_1826 : BitVec 32 := 1#32
  let v3069 : Index := Scalar.indexCast c1_i32_1826
  let c1_i32_1827 : BitVec 32 := 1#32
  let v3070 : Index := Scalar.indexCast c1_i32_1827
  let c0_i32_348 : BitVec 32 := 0#32
  let c1_i32_350 : BitVec 32 := 1#32
  let arg15 : BitVec 32 := Scf.iv c0_i32_348 c1_i32_350 k0_t3
  let v3071 : Index := Scalar.indexCast arg15
  let c928_1828 : Index := 928#32
  ![1, 1, v3071.toNat, 928]
def k0_off1047 (k0_t3 : Fin k0_t3_loop.trips) : Fin 4 → Nat :=
  let c1_i32_1829 : BitVec 32 := 1#32
  let v3075 : Index := Scalar.indexCast c1_i32_1829
  let c1_i32_1830 : BitVec 32 := 1#32
  let v3076 : Index := Scalar.indexCast c1_i32_1830
  let c0_i32_348 : BitVec 32 := 0#32
  let c1_i32_350 : BitVec 32 := 1#32
  let arg15 : BitVec 32 := Scf.iv c0_i32_348 c1_i32_350 k0_t3
  let v3077 : Index := Scalar.indexCast arg15
  let c944_1831 : Index := 944#32
  ![1, 1, v3077.toNat, 944]
def k0_off1048 (k0_t3 : Fin k0_t3_loop.trips) : Fin 4 → Nat :=
  let c1_i32_1832 : BitVec 32 := 1#32
  let v3081 : Index := Scalar.indexCast c1_i32_1832
  let c1_i32_1833 : BitVec 32 := 1#32
  let v3082 : Index := Scalar.indexCast c1_i32_1833
  let c0_i32_348 : BitVec 32 := 0#32
  let c1_i32_350 : BitVec 32 := 1#32
  let arg15 : BitVec 32 := Scf.iv c0_i32_348 c1_i32_350 k0_t3
  let v3083 : Index := Scalar.indexCast arg15
  let c944_1834 : Index := 944#32
  ![1, 1, v3083.toNat, 944]
def k0_off1049 (k0_t3 : Fin k0_t3_loop.trips) : Fin 4 → Nat :=
  let c1_i32_1835 : BitVec 32 := 1#32
  let v3087 : Index := Scalar.indexCast c1_i32_1835
  let c1_i32_1836 : BitVec 32 := 1#32
  let v3088 : Index := Scalar.indexCast c1_i32_1836
  let c0_i32_348 : BitVec 32 := 0#32
  let c1_i32_350 : BitVec 32 := 1#32
  let arg15 : BitVec 32 := Scf.iv c0_i32_348 c1_i32_350 k0_t3
  let v3089 : Index := Scalar.indexCast arg15
  let c960_1837 : Index := 960#32
  ![1, 1, v3089.toNat, 960]
def k0_off1050 (k0_t3 : Fin k0_t3_loop.trips) : Fin 4 → Nat :=
  let c1_i32_1838 : BitVec 32 := 1#32
  let v3093 : Index := Scalar.indexCast c1_i32_1838
  let c1_i32_1839 : BitVec 32 := 1#32
  let v3094 : Index := Scalar.indexCast c1_i32_1839
  let c0_i32_348 : BitVec 32 := 0#32
  let c1_i32_350 : BitVec 32 := 1#32
  let arg15 : BitVec 32 := Scf.iv c0_i32_348 c1_i32_350 k0_t3
  let v3095 : Index := Scalar.indexCast arg15
  let c960_1840 : Index := 960#32
  ![1, 1, v3095.toNat, 960]
def k0_off1051 (k0_t3 : Fin k0_t3_loop.trips) : Fin 4 → Nat :=
  let c1_i32_1841 : BitVec 32 := 1#32
  let v3099 : Index := Scalar.indexCast c1_i32_1841
  let c1_i32_1842 : BitVec 32 := 1#32
  let v3100 : Index := Scalar.indexCast c1_i32_1842
  let c0_i32_348 : BitVec 32 := 0#32
  let c1_i32_350 : BitVec 32 := 1#32
  let arg15 : BitVec 32 := Scf.iv c0_i32_348 c1_i32_350 k0_t3
  let v3101 : Index := Scalar.indexCast arg15
  let c976_1843 : Index := 976#32
  ![1, 1, v3101.toNat, 976]
def k0_off1052 (k0_t3 : Fin k0_t3_loop.trips) : Fin 4 → Nat :=
  let c1_i32_1844 : BitVec 32 := 1#32
  let v3105 : Index := Scalar.indexCast c1_i32_1844
  let c1_i32_1845 : BitVec 32 := 1#32
  let v3106 : Index := Scalar.indexCast c1_i32_1845
  let c0_i32_348 : BitVec 32 := 0#32
  let c1_i32_350 : BitVec 32 := 1#32
  let arg15 : BitVec 32 := Scf.iv c0_i32_348 c1_i32_350 k0_t3
  let v3107 : Index := Scalar.indexCast arg15
  let c976_1846 : Index := 976#32
  ![1, 1, v3107.toNat, 976]
def k0_off1053 (k0_t3 : Fin k0_t3_loop.trips) : Fin 4 → Nat :=
  let c1_i32_1847 : BitVec 32 := 1#32
  let v3111 : Index := Scalar.indexCast c1_i32_1847
  let c1_i32_1848 : BitVec 32 := 1#32
  let v3112 : Index := Scalar.indexCast c1_i32_1848
  let c0_i32_348 : BitVec 32 := 0#32
  let c1_i32_350 : BitVec 32 := 1#32
  let arg15 : BitVec 32 := Scf.iv c0_i32_348 c1_i32_350 k0_t3
  let v3113 : Index := Scalar.indexCast arg15
  let c992_1849 : Index := 992#32
  ![1, 1, v3113.toNat, 992]
def k0_off1054 (k0_t3 : Fin k0_t3_loop.trips) : Fin 4 → Nat :=
  let c1_i32_1850 : BitVec 32 := 1#32
  let v3117 : Index := Scalar.indexCast c1_i32_1850
  let c1_i32_1851 : BitVec 32 := 1#32
  let v3118 : Index := Scalar.indexCast c1_i32_1851
  let c0_i32_348 : BitVec 32 := 0#32
  let c1_i32_350 : BitVec 32 := 1#32
  let arg15 : BitVec 32 := Scf.iv c0_i32_348 c1_i32_350 k0_t3
  let v3119 : Index := Scalar.indexCast arg15
  let c992_1852 : Index := 992#32
  ![1, 1, v3119.toNat, 992]
def k0_off1055 (k0_t3 : Fin k0_t3_loop.trips) : Fin 4 → Nat :=
  let c1_i32_1853 : BitVec 32 := 1#32
  let v3123 : Index := Scalar.indexCast c1_i32_1853
  let c1_i32_1854 : BitVec 32 := 1#32
  let v3124 : Index := Scalar.indexCast c1_i32_1854
  let c0_i32_348 : BitVec 32 := 0#32
  let c1_i32_350 : BitVec 32 := 1#32
  let arg15 : BitVec 32 := Scf.iv c0_i32_348 c1_i32_350 k0_t3
  let v3125 : Index := Scalar.indexCast arg15
  let c1008_1855 : Index := 1008#32
  ![1, 1, v3125.toNat, 1008]
def k0_off1056 (k0_t3 : Fin k0_t3_loop.trips) : Fin 4 → Nat :=
  let c1_i32_1856 : BitVec 32 := 1#32
  let v3129 : Index := Scalar.indexCast c1_i32_1856
  let c1_i32_1857 : BitVec 32 := 1#32
  let v3130 : Index := Scalar.indexCast c1_i32_1857
  let c0_i32_348 : BitVec 32 := 0#32
  let c1_i32_350 : BitVec 32 := 1#32
  let arg15 : BitVec 32 := Scf.iv c0_i32_348 c1_i32_350 k0_t3
  let v3131 : Index := Scalar.indexCast arg15
  let c1008_1858 : Index := 1008#32
  ![1, 1, v3131.toNat, 1008]
def k0_off1057 (k0_t3 : Fin k0_t3_loop.trips) : Fin 4 → Nat :=
  let c1_i32_1859 : BitVec 32 := 1#32
  let v3135 : Index := Scalar.indexCast c1_i32_1859
  let c2_i32_1860 : BitVec 32 := 2#32
  let v3136 : Index := Scalar.indexCast c2_i32_1860
  let c0_i32_348 : BitVec 32 := 0#32
  let c1_i32_350 : BitVec 32 := 1#32
  let arg15 : BitVec 32 := Scf.iv c0_i32_348 c1_i32_350 k0_t3
  let v3137 : Index := Scalar.indexCast arg15
  let c512_1861 : Index := 512#32
  ![1, 2, v3137.toNat, 512]
def k0_off1058 (k0_t3 : Fin k0_t3_loop.trips) : Fin 4 → Nat :=
  let c1_i32_1862 : BitVec 32 := 1#32
  let v3141 : Index := Scalar.indexCast c1_i32_1862
  let c2_i32_1863 : BitVec 32 := 2#32
  let v3142 : Index := Scalar.indexCast c2_i32_1863
  let c0_i32_348 : BitVec 32 := 0#32
  let c1_i32_350 : BitVec 32 := 1#32
  let arg15 : BitVec 32 := Scf.iv c0_i32_348 c1_i32_350 k0_t3
  let v3143 : Index := Scalar.indexCast arg15
  let c512_1864 : Index := 512#32
  ![1, 2, v3143.toNat, 512]
def k0_off1059 (k0_t3 : Fin k0_t3_loop.trips) : Fin 4 → Nat :=
  let c1_i32_1865 : BitVec 32 := 1#32
  let v3147 : Index := Scalar.indexCast c1_i32_1865
  let c2_i32_1866 : BitVec 32 := 2#32
  let v3148 : Index := Scalar.indexCast c2_i32_1866
  let c0_i32_348 : BitVec 32 := 0#32
  let c1_i32_350 : BitVec 32 := 1#32
  let arg15 : BitVec 32 := Scf.iv c0_i32_348 c1_i32_350 k0_t3
  let v3149 : Index := Scalar.indexCast arg15
  let c528_1867 : Index := 528#32
  ![1, 2, v3149.toNat, 528]
def k0_off1060 (k0_t3 : Fin k0_t3_loop.trips) : Fin 4 → Nat :=
  let c1_i32_1868 : BitVec 32 := 1#32
  let v3153 : Index := Scalar.indexCast c1_i32_1868
  let c2_i32_1869 : BitVec 32 := 2#32
  let v3154 : Index := Scalar.indexCast c2_i32_1869
  let c0_i32_348 : BitVec 32 := 0#32
  let c1_i32_350 : BitVec 32 := 1#32
  let arg15 : BitVec 32 := Scf.iv c0_i32_348 c1_i32_350 k0_t3
  let v3155 : Index := Scalar.indexCast arg15
  let c528_1870 : Index := 528#32
  ![1, 2, v3155.toNat, 528]
def k0_off1061 (k0_t3 : Fin k0_t3_loop.trips) : Fin 4 → Nat :=
  let c1_i32_1871 : BitVec 32 := 1#32
  let v3159 : Index := Scalar.indexCast c1_i32_1871
  let c2_i32_1872 : BitVec 32 := 2#32
  let v3160 : Index := Scalar.indexCast c2_i32_1872
  let c0_i32_348 : BitVec 32 := 0#32
  let c1_i32_350 : BitVec 32 := 1#32
  let arg15 : BitVec 32 := Scf.iv c0_i32_348 c1_i32_350 k0_t3
  let v3161 : Index := Scalar.indexCast arg15
  let c544_1873 : Index := 544#32
  ![1, 2, v3161.toNat, 544]
def k0_off1062 (k0_t3 : Fin k0_t3_loop.trips) : Fin 4 → Nat :=
  let c1_i32_1874 : BitVec 32 := 1#32
  let v3165 : Index := Scalar.indexCast c1_i32_1874
  let c2_i32_1875 : BitVec 32 := 2#32
  let v3166 : Index := Scalar.indexCast c2_i32_1875
  let c0_i32_348 : BitVec 32 := 0#32
  let c1_i32_350 : BitVec 32 := 1#32
  let arg15 : BitVec 32 := Scf.iv c0_i32_348 c1_i32_350 k0_t3
  let v3167 : Index := Scalar.indexCast arg15
  let c544_1876 : Index := 544#32
  ![1, 2, v3167.toNat, 544]
def k0_off1063 (k0_t3 : Fin k0_t3_loop.trips) : Fin 4 → Nat :=
  let c1_i32_1877 : BitVec 32 := 1#32
  let v3171 : Index := Scalar.indexCast c1_i32_1877
  let c2_i32_1878 : BitVec 32 := 2#32
  let v3172 : Index := Scalar.indexCast c2_i32_1878
  let c0_i32_348 : BitVec 32 := 0#32
  let c1_i32_350 : BitVec 32 := 1#32
  let arg15 : BitVec 32 := Scf.iv c0_i32_348 c1_i32_350 k0_t3
  let v3173 : Index := Scalar.indexCast arg15
  let c560_1879 : Index := 560#32
  ![1, 2, v3173.toNat, 560]
def k0_off1064 (k0_t3 : Fin k0_t3_loop.trips) : Fin 4 → Nat :=
  let c1_i32_1880 : BitVec 32 := 1#32
  let v3177 : Index := Scalar.indexCast c1_i32_1880
  let c2_i32_1881 : BitVec 32 := 2#32
  let v3178 : Index := Scalar.indexCast c2_i32_1881
  let c0_i32_348 : BitVec 32 := 0#32
  let c1_i32_350 : BitVec 32 := 1#32
  let arg15 : BitVec 32 := Scf.iv c0_i32_348 c1_i32_350 k0_t3
  let v3179 : Index := Scalar.indexCast arg15
  let c560_1882 : Index := 560#32
  ![1, 2, v3179.toNat, 560]
def k0_off1065 (k0_t3 : Fin k0_t3_loop.trips) : Fin 4 → Nat :=
  let c1_i32_1883 : BitVec 32 := 1#32
  let v3183 : Index := Scalar.indexCast c1_i32_1883
  let c2_i32_1884 : BitVec 32 := 2#32
  let v3184 : Index := Scalar.indexCast c2_i32_1884
  let c0_i32_348 : BitVec 32 := 0#32
  let c1_i32_350 : BitVec 32 := 1#32
  let arg15 : BitVec 32 := Scf.iv c0_i32_348 c1_i32_350 k0_t3
  let v3185 : Index := Scalar.indexCast arg15
  let c576_1885 : Index := 576#32
  ![1, 2, v3185.toNat, 576]
def k0_off1066 (k0_t3 : Fin k0_t3_loop.trips) : Fin 4 → Nat :=
  let c1_i32_1886 : BitVec 32 := 1#32
  let v3189 : Index := Scalar.indexCast c1_i32_1886
  let c2_i32_1887 : BitVec 32 := 2#32
  let v3190 : Index := Scalar.indexCast c2_i32_1887
  let c0_i32_348 : BitVec 32 := 0#32
  let c1_i32_350 : BitVec 32 := 1#32
  let arg15 : BitVec 32 := Scf.iv c0_i32_348 c1_i32_350 k0_t3
  let v3191 : Index := Scalar.indexCast arg15
  let c576_1888 : Index := 576#32
  ![1, 2, v3191.toNat, 576]
def k0_off1067 (k0_t3 : Fin k0_t3_loop.trips) : Fin 4 → Nat :=
  let c1_i32_1889 : BitVec 32 := 1#32
  let v3195 : Index := Scalar.indexCast c1_i32_1889
  let c2_i32_1890 : BitVec 32 := 2#32
  let v3196 : Index := Scalar.indexCast c2_i32_1890
  let c0_i32_348 : BitVec 32 := 0#32
  let c1_i32_350 : BitVec 32 := 1#32
  let arg15 : BitVec 32 := Scf.iv c0_i32_348 c1_i32_350 k0_t3
  let v3197 : Index := Scalar.indexCast arg15
  let c592_1891 : Index := 592#32
  ![1, 2, v3197.toNat, 592]
def k0_off1068 (k0_t3 : Fin k0_t3_loop.trips) : Fin 4 → Nat :=
  let c1_i32_1892 : BitVec 32 := 1#32
  let v3201 : Index := Scalar.indexCast c1_i32_1892
  let c2_i32_1893 : BitVec 32 := 2#32
  let v3202 : Index := Scalar.indexCast c2_i32_1893
  let c0_i32_348 : BitVec 32 := 0#32
  let c1_i32_350 : BitVec 32 := 1#32
  let arg15 : BitVec 32 := Scf.iv c0_i32_348 c1_i32_350 k0_t3
  let v3203 : Index := Scalar.indexCast arg15
  let c592_1894 : Index := 592#32
  ![1, 2, v3203.toNat, 592]
def k0_off1069 (k0_t3 : Fin k0_t3_loop.trips) : Fin 4 → Nat :=
  let c1_i32_1895 : BitVec 32 := 1#32
  let v3207 : Index := Scalar.indexCast c1_i32_1895
  let c2_i32_1896 : BitVec 32 := 2#32
  let v3208 : Index := Scalar.indexCast c2_i32_1896
  let c0_i32_348 : BitVec 32 := 0#32
  let c1_i32_350 : BitVec 32 := 1#32
  let arg15 : BitVec 32 := Scf.iv c0_i32_348 c1_i32_350 k0_t3
  let v3209 : Index := Scalar.indexCast arg15
  let c608_1897 : Index := 608#32
  ![1, 2, v3209.toNat, 608]
def k0_off1070 (k0_t3 : Fin k0_t3_loop.trips) : Fin 4 → Nat :=
  let c1_i32_1898 : BitVec 32 := 1#32
  let v3213 : Index := Scalar.indexCast c1_i32_1898
  let c2_i32_1899 : BitVec 32 := 2#32
  let v3214 : Index := Scalar.indexCast c2_i32_1899
  let c0_i32_348 : BitVec 32 := 0#32
  let c1_i32_350 : BitVec 32 := 1#32
  let arg15 : BitVec 32 := Scf.iv c0_i32_348 c1_i32_350 k0_t3
  let v3215 : Index := Scalar.indexCast arg15
  let c608_1900 : Index := 608#32
  ![1, 2, v3215.toNat, 608]
def k0_off1071 (k0_t3 : Fin k0_t3_loop.trips) : Fin 4 → Nat :=
  let c1_i32_1901 : BitVec 32 := 1#32
  let v3219 : Index := Scalar.indexCast c1_i32_1901
  let c2_i32_1902 : BitVec 32 := 2#32
  let v3220 : Index := Scalar.indexCast c2_i32_1902
  let c0_i32_348 : BitVec 32 := 0#32
  let c1_i32_350 : BitVec 32 := 1#32
  let arg15 : BitVec 32 := Scf.iv c0_i32_348 c1_i32_350 k0_t3
  let v3221 : Index := Scalar.indexCast arg15
  let c624_1903 : Index := 624#32
  ![1, 2, v3221.toNat, 624]
def k0_off1072 (k0_t3 : Fin k0_t3_loop.trips) : Fin 4 → Nat :=
  let c1_i32_1904 : BitVec 32 := 1#32
  let v3225 : Index := Scalar.indexCast c1_i32_1904
  let c2_i32_1905 : BitVec 32 := 2#32
  let v3226 : Index := Scalar.indexCast c2_i32_1905
  let c0_i32_348 : BitVec 32 := 0#32
  let c1_i32_350 : BitVec 32 := 1#32
  let arg15 : BitVec 32 := Scf.iv c0_i32_348 c1_i32_350 k0_t3
  let v3227 : Index := Scalar.indexCast arg15
  let c624_1906 : Index := 624#32
  ![1, 2, v3227.toNat, 624]
def k0_off1073 (k0_t3 : Fin k0_t3_loop.trips) : Fin 4 → Nat :=
  let c1_i32_1907 : BitVec 32 := 1#32
  let v3231 : Index := Scalar.indexCast c1_i32_1907
  let c2_i32_1908 : BitVec 32 := 2#32
  let v3232 : Index := Scalar.indexCast c2_i32_1908
  let c0_i32_348 : BitVec 32 := 0#32
  let c1_i32_350 : BitVec 32 := 1#32
  let arg15 : BitVec 32 := Scf.iv c0_i32_348 c1_i32_350 k0_t3
  let v3233 : Index := Scalar.indexCast arg15
  let c640_1909 : Index := 640#32
  ![1, 2, v3233.toNat, 640]
def k0_off1074 (k0_t3 : Fin k0_t3_loop.trips) : Fin 4 → Nat :=
  let c1_i32_1910 : BitVec 32 := 1#32
  let v3237 : Index := Scalar.indexCast c1_i32_1910
  let c2_i32_1911 : BitVec 32 := 2#32
  let v3238 : Index := Scalar.indexCast c2_i32_1911
  let c0_i32_348 : BitVec 32 := 0#32
  let c1_i32_350 : BitVec 32 := 1#32
  let arg15 : BitVec 32 := Scf.iv c0_i32_348 c1_i32_350 k0_t3
  let v3239 : Index := Scalar.indexCast arg15
  let c640_1912 : Index := 640#32
  ![1, 2, v3239.toNat, 640]
def k0_off1075 (k0_t3 : Fin k0_t3_loop.trips) : Fin 4 → Nat :=
  let c1_i32_1913 : BitVec 32 := 1#32
  let v3243 : Index := Scalar.indexCast c1_i32_1913
  let c2_i32_1914 : BitVec 32 := 2#32
  let v3244 : Index := Scalar.indexCast c2_i32_1914
  let c0_i32_348 : BitVec 32 := 0#32
  let c1_i32_350 : BitVec 32 := 1#32
  let arg15 : BitVec 32 := Scf.iv c0_i32_348 c1_i32_350 k0_t3
  let v3245 : Index := Scalar.indexCast arg15
  let c656_1915 : Index := 656#32
  ![1, 2, v3245.toNat, 656]
def k0_off1076 (k0_t3 : Fin k0_t3_loop.trips) : Fin 4 → Nat :=
  let c1_i32_1916 : BitVec 32 := 1#32
  let v3249 : Index := Scalar.indexCast c1_i32_1916
  let c2_i32_1917 : BitVec 32 := 2#32
  let v3250 : Index := Scalar.indexCast c2_i32_1917
  let c0_i32_348 : BitVec 32 := 0#32
  let c1_i32_350 : BitVec 32 := 1#32
  let arg15 : BitVec 32 := Scf.iv c0_i32_348 c1_i32_350 k0_t3
  let v3251 : Index := Scalar.indexCast arg15
  let c656_1918 : Index := 656#32
  ![1, 2, v3251.toNat, 656]
def k0_off1077 (k0_t3 : Fin k0_t3_loop.trips) : Fin 4 → Nat :=
  let c1_i32_1919 : BitVec 32 := 1#32
  let v3255 : Index := Scalar.indexCast c1_i32_1919
  let c2_i32_1920 : BitVec 32 := 2#32
  let v3256 : Index := Scalar.indexCast c2_i32_1920
  let c0_i32_348 : BitVec 32 := 0#32
  let c1_i32_350 : BitVec 32 := 1#32
  let arg15 : BitVec 32 := Scf.iv c0_i32_348 c1_i32_350 k0_t3
  let v3257 : Index := Scalar.indexCast arg15
  let c672_1921 : Index := 672#32
  ![1, 2, v3257.toNat, 672]
def k0_off1078 (k0_t3 : Fin k0_t3_loop.trips) : Fin 4 → Nat :=
  let c1_i32_1922 : BitVec 32 := 1#32
  let v3261 : Index := Scalar.indexCast c1_i32_1922
  let c2_i32_1923 : BitVec 32 := 2#32
  let v3262 : Index := Scalar.indexCast c2_i32_1923
  let c0_i32_348 : BitVec 32 := 0#32
  let c1_i32_350 : BitVec 32 := 1#32
  let arg15 : BitVec 32 := Scf.iv c0_i32_348 c1_i32_350 k0_t3
  let v3263 : Index := Scalar.indexCast arg15
  let c672_1924 : Index := 672#32
  ![1, 2, v3263.toNat, 672]
def k0_off1079 (k0_t3 : Fin k0_t3_loop.trips) : Fin 4 → Nat :=
  let c1_i32_1925 : BitVec 32 := 1#32
  let v3267 : Index := Scalar.indexCast c1_i32_1925
  let c2_i32_1926 : BitVec 32 := 2#32
  let v3268 : Index := Scalar.indexCast c2_i32_1926
  let c0_i32_348 : BitVec 32 := 0#32
  let c1_i32_350 : BitVec 32 := 1#32
  let arg15 : BitVec 32 := Scf.iv c0_i32_348 c1_i32_350 k0_t3
  let v3269 : Index := Scalar.indexCast arg15
  let c688_1927 : Index := 688#32
  ![1, 2, v3269.toNat, 688]
def k0_off1080 (k0_t3 : Fin k0_t3_loop.trips) : Fin 4 → Nat :=
  let c1_i32_1928 : BitVec 32 := 1#32
  let v3273 : Index := Scalar.indexCast c1_i32_1928
  let c2_i32_1929 : BitVec 32 := 2#32
  let v3274 : Index := Scalar.indexCast c2_i32_1929
  let c0_i32_348 : BitVec 32 := 0#32
  let c1_i32_350 : BitVec 32 := 1#32
  let arg15 : BitVec 32 := Scf.iv c0_i32_348 c1_i32_350 k0_t3
  let v3275 : Index := Scalar.indexCast arg15
  let c688_1930 : Index := 688#32
  ![1, 2, v3275.toNat, 688]
def k0_off1081 (k0_t3 : Fin k0_t3_loop.trips) : Fin 4 → Nat :=
  let c1_i32_1931 : BitVec 32 := 1#32
  let v3279 : Index := Scalar.indexCast c1_i32_1931
  let c2_i32_1932 : BitVec 32 := 2#32
  let v3280 : Index := Scalar.indexCast c2_i32_1932
  let c0_i32_348 : BitVec 32 := 0#32
  let c1_i32_350 : BitVec 32 := 1#32
  let arg15 : BitVec 32 := Scf.iv c0_i32_348 c1_i32_350 k0_t3
  let v3281 : Index := Scalar.indexCast arg15
  let c704_1933 : Index := 704#32
  ![1, 2, v3281.toNat, 704]
def k0_off1082 (k0_t3 : Fin k0_t3_loop.trips) : Fin 4 → Nat :=
  let c1_i32_1934 : BitVec 32 := 1#32
  let v3285 : Index := Scalar.indexCast c1_i32_1934
  let c2_i32_1935 : BitVec 32 := 2#32
  let v3286 : Index := Scalar.indexCast c2_i32_1935
  let c0_i32_348 : BitVec 32 := 0#32
  let c1_i32_350 : BitVec 32 := 1#32
  let arg15 : BitVec 32 := Scf.iv c0_i32_348 c1_i32_350 k0_t3
  let v3287 : Index := Scalar.indexCast arg15
  let c704_1936 : Index := 704#32
  ![1, 2, v3287.toNat, 704]
def k0_off1083 (k0_t3 : Fin k0_t3_loop.trips) : Fin 4 → Nat :=
  let c1_i32_1937 : BitVec 32 := 1#32
  let v3291 : Index := Scalar.indexCast c1_i32_1937
  let c2_i32_1938 : BitVec 32 := 2#32
  let v3292 : Index := Scalar.indexCast c2_i32_1938
  let c0_i32_348 : BitVec 32 := 0#32
  let c1_i32_350 : BitVec 32 := 1#32
  let arg15 : BitVec 32 := Scf.iv c0_i32_348 c1_i32_350 k0_t3
  let v3293 : Index := Scalar.indexCast arg15
  let c720_1939 : Index := 720#32
  ![1, 2, v3293.toNat, 720]
def k0_off1084 (k0_t3 : Fin k0_t3_loop.trips) : Fin 4 → Nat :=
  let c1_i32_1940 : BitVec 32 := 1#32
  let v3297 : Index := Scalar.indexCast c1_i32_1940
  let c2_i32_1941 : BitVec 32 := 2#32
  let v3298 : Index := Scalar.indexCast c2_i32_1941
  let c0_i32_348 : BitVec 32 := 0#32
  let c1_i32_350 : BitVec 32 := 1#32
  let arg15 : BitVec 32 := Scf.iv c0_i32_348 c1_i32_350 k0_t3
  let v3299 : Index := Scalar.indexCast arg15
  let c720_1942 : Index := 720#32
  ![1, 2, v3299.toNat, 720]
def k0_off1085 (k0_t3 : Fin k0_t3_loop.trips) : Fin 4 → Nat :=
  let c1_i32_1943 : BitVec 32 := 1#32
  let v3303 : Index := Scalar.indexCast c1_i32_1943
  let c2_i32_1944 : BitVec 32 := 2#32
  let v3304 : Index := Scalar.indexCast c2_i32_1944
  let c0_i32_348 : BitVec 32 := 0#32
  let c1_i32_350 : BitVec 32 := 1#32
  let arg15 : BitVec 32 := Scf.iv c0_i32_348 c1_i32_350 k0_t3
  let v3305 : Index := Scalar.indexCast arg15
  let c736_1945 : Index := 736#32
  ![1, 2, v3305.toNat, 736]
def k0_off1086 (k0_t3 : Fin k0_t3_loop.trips) : Fin 4 → Nat :=
  let c1_i32_1946 : BitVec 32 := 1#32
  let v3309 : Index := Scalar.indexCast c1_i32_1946
  let c2_i32_1947 : BitVec 32 := 2#32
  let v3310 : Index := Scalar.indexCast c2_i32_1947
  let c0_i32_348 : BitVec 32 := 0#32
  let c1_i32_350 : BitVec 32 := 1#32
  let arg15 : BitVec 32 := Scf.iv c0_i32_348 c1_i32_350 k0_t3
  let v3311 : Index := Scalar.indexCast arg15
  let c736_1948 : Index := 736#32
  ![1, 2, v3311.toNat, 736]
def k0_off1087 (k0_t3 : Fin k0_t3_loop.trips) : Fin 4 → Nat :=
  let c1_i32_1949 : BitVec 32 := 1#32
  let v3315 : Index := Scalar.indexCast c1_i32_1949
  let c2_i32_1950 : BitVec 32 := 2#32
  let v3316 : Index := Scalar.indexCast c2_i32_1950
  let c0_i32_348 : BitVec 32 := 0#32
  let c1_i32_350 : BitVec 32 := 1#32
  let arg15 : BitVec 32 := Scf.iv c0_i32_348 c1_i32_350 k0_t3
  let v3317 : Index := Scalar.indexCast arg15
  let c752_1951 : Index := 752#32
  ![1, 2, v3317.toNat, 752]
def k0_off1088 (k0_t3 : Fin k0_t3_loop.trips) : Fin 4 → Nat :=
  let c1_i32_1952 : BitVec 32 := 1#32
  let v3321 : Index := Scalar.indexCast c1_i32_1952
  let c2_i32_1953 : BitVec 32 := 2#32
  let v3322 : Index := Scalar.indexCast c2_i32_1953
  let c0_i32_348 : BitVec 32 := 0#32
  let c1_i32_350 : BitVec 32 := 1#32
  let arg15 : BitVec 32 := Scf.iv c0_i32_348 c1_i32_350 k0_t3
  let v3323 : Index := Scalar.indexCast arg15
  let c752_1954 : Index := 752#32
  ![1, 2, v3323.toNat, 752]
def k0_off1089 (k0_t3 : Fin k0_t3_loop.trips) : Fin 4 → Nat :=
  let c1_i32_1955 : BitVec 32 := 1#32
  let v3327 : Index := Scalar.indexCast c1_i32_1955
  let c2_i32_1956 : BitVec 32 := 2#32
  let v3328 : Index := Scalar.indexCast c2_i32_1956
  let c0_i32_348 : BitVec 32 := 0#32
  let c1_i32_350 : BitVec 32 := 1#32
  let arg15 : BitVec 32 := Scf.iv c0_i32_348 c1_i32_350 k0_t3
  let v3329 : Index := Scalar.indexCast arg15
  let c768_1957 : Index := 768#32
  ![1, 2, v3329.toNat, 768]
def k0_off1090 (k0_t3 : Fin k0_t3_loop.trips) : Fin 4 → Nat :=
  let c1_i32_1958 : BitVec 32 := 1#32
  let v3333 : Index := Scalar.indexCast c1_i32_1958
  let c2_i32_1959 : BitVec 32 := 2#32
  let v3334 : Index := Scalar.indexCast c2_i32_1959
  let c0_i32_348 : BitVec 32 := 0#32
  let c1_i32_350 : BitVec 32 := 1#32
  let arg15 : BitVec 32 := Scf.iv c0_i32_348 c1_i32_350 k0_t3
  let v3335 : Index := Scalar.indexCast arg15
  let c768_1960 : Index := 768#32
  ![1, 2, v3335.toNat, 768]
def k0_off1091 (k0_t3 : Fin k0_t3_loop.trips) : Fin 4 → Nat :=
  let c1_i32_1961 : BitVec 32 := 1#32
  let v3339 : Index := Scalar.indexCast c1_i32_1961
  let c2_i32_1962 : BitVec 32 := 2#32
  let v3340 : Index := Scalar.indexCast c2_i32_1962
  let c0_i32_348 : BitVec 32 := 0#32
  let c1_i32_350 : BitVec 32 := 1#32
  let arg15 : BitVec 32 := Scf.iv c0_i32_348 c1_i32_350 k0_t3
  let v3341 : Index := Scalar.indexCast arg15
  let c784_1963 : Index := 784#32
  ![1, 2, v3341.toNat, 784]
def k0_off1092 (k0_t3 : Fin k0_t3_loop.trips) : Fin 4 → Nat :=
  let c1_i32_1964 : BitVec 32 := 1#32
  let v3345 : Index := Scalar.indexCast c1_i32_1964
  let c2_i32_1965 : BitVec 32 := 2#32
  let v3346 : Index := Scalar.indexCast c2_i32_1965
  let c0_i32_348 : BitVec 32 := 0#32
  let c1_i32_350 : BitVec 32 := 1#32
  let arg15 : BitVec 32 := Scf.iv c0_i32_348 c1_i32_350 k0_t3
  let v3347 : Index := Scalar.indexCast arg15
  let c784_1966 : Index := 784#32
  ![1, 2, v3347.toNat, 784]
def k0_off1093 (k0_t3 : Fin k0_t3_loop.trips) : Fin 4 → Nat :=
  let c1_i32_1967 : BitVec 32 := 1#32
  let v3351 : Index := Scalar.indexCast c1_i32_1967
  let c2_i32_1968 : BitVec 32 := 2#32
  let v3352 : Index := Scalar.indexCast c2_i32_1968
  let c0_i32_348 : BitVec 32 := 0#32
  let c1_i32_350 : BitVec 32 := 1#32
  let arg15 : BitVec 32 := Scf.iv c0_i32_348 c1_i32_350 k0_t3
  let v3353 : Index := Scalar.indexCast arg15
  let c800_1969 : Index := 800#32
  ![1, 2, v3353.toNat, 800]
def k0_off1094 (k0_t3 : Fin k0_t3_loop.trips) : Fin 4 → Nat :=
  let c1_i32_1970 : BitVec 32 := 1#32
  let v3357 : Index := Scalar.indexCast c1_i32_1970
  let c2_i32_1971 : BitVec 32 := 2#32
  let v3358 : Index := Scalar.indexCast c2_i32_1971
  let c0_i32_348 : BitVec 32 := 0#32
  let c1_i32_350 : BitVec 32 := 1#32
  let arg15 : BitVec 32 := Scf.iv c0_i32_348 c1_i32_350 k0_t3
  let v3359 : Index := Scalar.indexCast arg15
  let c800_1972 : Index := 800#32
  ![1, 2, v3359.toNat, 800]
def k0_off1095 (k0_t3 : Fin k0_t3_loop.trips) : Fin 4 → Nat :=
  let c1_i32_1973 : BitVec 32 := 1#32
  let v3363 : Index := Scalar.indexCast c1_i32_1973
  let c2_i32_1974 : BitVec 32 := 2#32
  let v3364 : Index := Scalar.indexCast c2_i32_1974
  let c0_i32_348 : BitVec 32 := 0#32
  let c1_i32_350 : BitVec 32 := 1#32
  let arg15 : BitVec 32 := Scf.iv c0_i32_348 c1_i32_350 k0_t3
  let v3365 : Index := Scalar.indexCast arg15
  let c816_1975 : Index := 816#32
  ![1, 2, v3365.toNat, 816]
def k0_off1096 (k0_t3 : Fin k0_t3_loop.trips) : Fin 4 → Nat :=
  let c1_i32_1976 : BitVec 32 := 1#32
  let v3369 : Index := Scalar.indexCast c1_i32_1976
  let c2_i32_1977 : BitVec 32 := 2#32
  let v3370 : Index := Scalar.indexCast c2_i32_1977
  let c0_i32_348 : BitVec 32 := 0#32
  let c1_i32_350 : BitVec 32 := 1#32
  let arg15 : BitVec 32 := Scf.iv c0_i32_348 c1_i32_350 k0_t3
  let v3371 : Index := Scalar.indexCast arg15
  let c816_1978 : Index := 816#32
  ![1, 2, v3371.toNat, 816]
def k0_off1097 (k0_t3 : Fin k0_t3_loop.trips) : Fin 4 → Nat :=
  let c1_i32_1979 : BitVec 32 := 1#32
  let v3375 : Index := Scalar.indexCast c1_i32_1979
  let c2_i32_1980 : BitVec 32 := 2#32
  let v3376 : Index := Scalar.indexCast c2_i32_1980
  let c0_i32_348 : BitVec 32 := 0#32
  let c1_i32_350 : BitVec 32 := 1#32
  let arg15 : BitVec 32 := Scf.iv c0_i32_348 c1_i32_350 k0_t3
  let v3377 : Index := Scalar.indexCast arg15
  let c832_1981 : Index := 832#32
  ![1, 2, v3377.toNat, 832]
def k0_off1098 (k0_t3 : Fin k0_t3_loop.trips) : Fin 4 → Nat :=
  let c1_i32_1982 : BitVec 32 := 1#32
  let v3381 : Index := Scalar.indexCast c1_i32_1982
  let c2_i32_1983 : BitVec 32 := 2#32
  let v3382 : Index := Scalar.indexCast c2_i32_1983
  let c0_i32_348 : BitVec 32 := 0#32
  let c1_i32_350 : BitVec 32 := 1#32
  let arg15 : BitVec 32 := Scf.iv c0_i32_348 c1_i32_350 k0_t3
  let v3383 : Index := Scalar.indexCast arg15
  let c832_1984 : Index := 832#32
  ![1, 2, v3383.toNat, 832]
def k0_off1099 (k0_t3 : Fin k0_t3_loop.trips) : Fin 4 → Nat :=
  let c1_i32_1985 : BitVec 32 := 1#32
  let v3387 : Index := Scalar.indexCast c1_i32_1985
  let c2_i32_1986 : BitVec 32 := 2#32
  let v3388 : Index := Scalar.indexCast c2_i32_1986
  let c0_i32_348 : BitVec 32 := 0#32
  let c1_i32_350 : BitVec 32 := 1#32
  let arg15 : BitVec 32 := Scf.iv c0_i32_348 c1_i32_350 k0_t3
  let v3389 : Index := Scalar.indexCast arg15
  let c848_1987 : Index := 848#32
  ![1, 2, v3389.toNat, 848]
def k0_off1100 (k0_t3 : Fin k0_t3_loop.trips) : Fin 4 → Nat :=
  let c1_i32_1988 : BitVec 32 := 1#32
  let v3393 : Index := Scalar.indexCast c1_i32_1988
  let c2_i32_1989 : BitVec 32 := 2#32
  let v3394 : Index := Scalar.indexCast c2_i32_1989
  let c0_i32_348 : BitVec 32 := 0#32
  let c1_i32_350 : BitVec 32 := 1#32
  let arg15 : BitVec 32 := Scf.iv c0_i32_348 c1_i32_350 k0_t3
  let v3395 : Index := Scalar.indexCast arg15
  let c848_1990 : Index := 848#32
  ![1, 2, v3395.toNat, 848]
def k0_off1101 (k0_t3 : Fin k0_t3_loop.trips) : Fin 4 → Nat :=
  let c1_i32_1991 : BitVec 32 := 1#32
  let v3399 : Index := Scalar.indexCast c1_i32_1991
  let c2_i32_1992 : BitVec 32 := 2#32
  let v3400 : Index := Scalar.indexCast c2_i32_1992
  let c0_i32_348 : BitVec 32 := 0#32
  let c1_i32_350 : BitVec 32 := 1#32
  let arg15 : BitVec 32 := Scf.iv c0_i32_348 c1_i32_350 k0_t3
  let v3401 : Index := Scalar.indexCast arg15
  let c864_1993 : Index := 864#32
  ![1, 2, v3401.toNat, 864]
def k0_off1102 (k0_t3 : Fin k0_t3_loop.trips) : Fin 4 → Nat :=
  let c1_i32_1994 : BitVec 32 := 1#32
  let v3405 : Index := Scalar.indexCast c1_i32_1994
  let c2_i32_1995 : BitVec 32 := 2#32
  let v3406 : Index := Scalar.indexCast c2_i32_1995
  let c0_i32_348 : BitVec 32 := 0#32
  let c1_i32_350 : BitVec 32 := 1#32
  let arg15 : BitVec 32 := Scf.iv c0_i32_348 c1_i32_350 k0_t3
  let v3407 : Index := Scalar.indexCast arg15
  let c864_1996 : Index := 864#32
  ![1, 2, v3407.toNat, 864]
def k0_off1103 (k0_t3 : Fin k0_t3_loop.trips) : Fin 4 → Nat :=
  let c1_i32_1997 : BitVec 32 := 1#32
  let v3411 : Index := Scalar.indexCast c1_i32_1997
  let c2_i32_1998 : BitVec 32 := 2#32
  let v3412 : Index := Scalar.indexCast c2_i32_1998
  let c0_i32_348 : BitVec 32 := 0#32
  let c1_i32_350 : BitVec 32 := 1#32
  let arg15 : BitVec 32 := Scf.iv c0_i32_348 c1_i32_350 k0_t3
  let v3413 : Index := Scalar.indexCast arg15
  let c880_1999 : Index := 880#32
  ![1, 2, v3413.toNat, 880]
def k0_off1104 (k0_t3 : Fin k0_t3_loop.trips) : Fin 4 → Nat :=
  let c1_i32_2000 : BitVec 32 := 1#32
  let v3417 : Index := Scalar.indexCast c1_i32_2000
  let c2_i32_2001 : BitVec 32 := 2#32
  let v3418 : Index := Scalar.indexCast c2_i32_2001
  let c0_i32_348 : BitVec 32 := 0#32
  let c1_i32_350 : BitVec 32 := 1#32
  let arg15 : BitVec 32 := Scf.iv c0_i32_348 c1_i32_350 k0_t3
  let v3419 : Index := Scalar.indexCast arg15
  let c880_2002 : Index := 880#32
  ![1, 2, v3419.toNat, 880]
def k0_off1105 (k0_t3 : Fin k0_t3_loop.trips) : Fin 4 → Nat :=
  let c1_i32_2003 : BitVec 32 := 1#32
  let v3423 : Index := Scalar.indexCast c1_i32_2003
  let c2_i32_2004 : BitVec 32 := 2#32
  let v3424 : Index := Scalar.indexCast c2_i32_2004
  let c0_i32_348 : BitVec 32 := 0#32
  let c1_i32_350 : BitVec 32 := 1#32
  let arg15 : BitVec 32 := Scf.iv c0_i32_348 c1_i32_350 k0_t3
  let v3425 : Index := Scalar.indexCast arg15
  let c896_2005 : Index := 896#32
  ![1, 2, v3425.toNat, 896]
def k0_off1106 (k0_t3 : Fin k0_t3_loop.trips) : Fin 4 → Nat :=
  let c1_i32_2006 : BitVec 32 := 1#32
  let v3429 : Index := Scalar.indexCast c1_i32_2006
  let c2_i32_2007 : BitVec 32 := 2#32
  let v3430 : Index := Scalar.indexCast c2_i32_2007
  let c0_i32_348 : BitVec 32 := 0#32
  let c1_i32_350 : BitVec 32 := 1#32
  let arg15 : BitVec 32 := Scf.iv c0_i32_348 c1_i32_350 k0_t3
  let v3431 : Index := Scalar.indexCast arg15
  let c896_2008 : Index := 896#32
  ![1, 2, v3431.toNat, 896]
def k0_off1107 (k0_t3 : Fin k0_t3_loop.trips) : Fin 4 → Nat :=
  let c1_i32_2009 : BitVec 32 := 1#32
  let v3435 : Index := Scalar.indexCast c1_i32_2009
  let c2_i32_2010 : BitVec 32 := 2#32
  let v3436 : Index := Scalar.indexCast c2_i32_2010
  let c0_i32_348 : BitVec 32 := 0#32
  let c1_i32_350 : BitVec 32 := 1#32
  let arg15 : BitVec 32 := Scf.iv c0_i32_348 c1_i32_350 k0_t3
  let v3437 : Index := Scalar.indexCast arg15
  let c912_2011 : Index := 912#32
  ![1, 2, v3437.toNat, 912]
def k0_off1108 (k0_t3 : Fin k0_t3_loop.trips) : Fin 4 → Nat :=
  let c1_i32_2012 : BitVec 32 := 1#32
  let v3441 : Index := Scalar.indexCast c1_i32_2012
  let c2_i32_2013 : BitVec 32 := 2#32
  let v3442 : Index := Scalar.indexCast c2_i32_2013
  let c0_i32_348 : BitVec 32 := 0#32
  let c1_i32_350 : BitVec 32 := 1#32
  let arg15 : BitVec 32 := Scf.iv c0_i32_348 c1_i32_350 k0_t3
  let v3443 : Index := Scalar.indexCast arg15
  let c912_2014 : Index := 912#32
  ![1, 2, v3443.toNat, 912]
def k0_off1109 (k0_t3 : Fin k0_t3_loop.trips) : Fin 4 → Nat :=
  let c1_i32_2015 : BitVec 32 := 1#32
  let v3447 : Index := Scalar.indexCast c1_i32_2015
  let c2_i32_2016 : BitVec 32 := 2#32
  let v3448 : Index := Scalar.indexCast c2_i32_2016
  let c0_i32_348 : BitVec 32 := 0#32
  let c1_i32_350 : BitVec 32 := 1#32
  let arg15 : BitVec 32 := Scf.iv c0_i32_348 c1_i32_350 k0_t3
  let v3449 : Index := Scalar.indexCast arg15
  let c928_2017 : Index := 928#32
  ![1, 2, v3449.toNat, 928]
def k0_off1110 (k0_t3 : Fin k0_t3_loop.trips) : Fin 4 → Nat :=
  let c1_i32_2018 : BitVec 32 := 1#32
  let v3453 : Index := Scalar.indexCast c1_i32_2018
  let c2_i32_2019 : BitVec 32 := 2#32
  let v3454 : Index := Scalar.indexCast c2_i32_2019
  let c0_i32_348 : BitVec 32 := 0#32
  let c1_i32_350 : BitVec 32 := 1#32
  let arg15 : BitVec 32 := Scf.iv c0_i32_348 c1_i32_350 k0_t3
  let v3455 : Index := Scalar.indexCast arg15
  let c928_2020 : Index := 928#32
  ![1, 2, v3455.toNat, 928]
def k0_off1111 (k0_t3 : Fin k0_t3_loop.trips) : Fin 4 → Nat :=
  let c1_i32_2021 : BitVec 32 := 1#32
  let v3459 : Index := Scalar.indexCast c1_i32_2021
  let c2_i32_2022 : BitVec 32 := 2#32
  let v3460 : Index := Scalar.indexCast c2_i32_2022
  let c0_i32_348 : BitVec 32 := 0#32
  let c1_i32_350 : BitVec 32 := 1#32
  let arg15 : BitVec 32 := Scf.iv c0_i32_348 c1_i32_350 k0_t3
  let v3461 : Index := Scalar.indexCast arg15
  let c944_2023 : Index := 944#32
  ![1, 2, v3461.toNat, 944]
def k0_off1112 (k0_t3 : Fin k0_t3_loop.trips) : Fin 4 → Nat :=
  let c1_i32_2024 : BitVec 32 := 1#32
  let v3465 : Index := Scalar.indexCast c1_i32_2024
  let c2_i32_2025 : BitVec 32 := 2#32
  let v3466 : Index := Scalar.indexCast c2_i32_2025
  let c0_i32_348 : BitVec 32 := 0#32
  let c1_i32_350 : BitVec 32 := 1#32
  let arg15 : BitVec 32 := Scf.iv c0_i32_348 c1_i32_350 k0_t3
  let v3467 : Index := Scalar.indexCast arg15
  let c944_2026 : Index := 944#32
  ![1, 2, v3467.toNat, 944]
def k0_off1113 (k0_t3 : Fin k0_t3_loop.trips) : Fin 4 → Nat :=
  let c1_i32_2027 : BitVec 32 := 1#32
  let v3471 : Index := Scalar.indexCast c1_i32_2027
  let c2_i32_2028 : BitVec 32 := 2#32
  let v3472 : Index := Scalar.indexCast c2_i32_2028
  let c0_i32_348 : BitVec 32 := 0#32
  let c1_i32_350 : BitVec 32 := 1#32
  let arg15 : BitVec 32 := Scf.iv c0_i32_348 c1_i32_350 k0_t3
  let v3473 : Index := Scalar.indexCast arg15
  let c960_2029 : Index := 960#32
  ![1, 2, v3473.toNat, 960]
def k0_off1114 (k0_t3 : Fin k0_t3_loop.trips) : Fin 4 → Nat :=
  let c1_i32_2030 : BitVec 32 := 1#32
  let v3477 : Index := Scalar.indexCast c1_i32_2030
  let c2_i32_2031 : BitVec 32 := 2#32
  let v3478 : Index := Scalar.indexCast c2_i32_2031
  let c0_i32_348 : BitVec 32 := 0#32
  let c1_i32_350 : BitVec 32 := 1#32
  let arg15 : BitVec 32 := Scf.iv c0_i32_348 c1_i32_350 k0_t3
  let v3479 : Index := Scalar.indexCast arg15
  let c960_2032 : Index := 960#32
  ![1, 2, v3479.toNat, 960]
def k0_off1115 (k0_t3 : Fin k0_t3_loop.trips) : Fin 4 → Nat :=
  let c1_i32_2033 : BitVec 32 := 1#32
  let v3483 : Index := Scalar.indexCast c1_i32_2033
  let c2_i32_2034 : BitVec 32 := 2#32
  let v3484 : Index := Scalar.indexCast c2_i32_2034
  let c0_i32_348 : BitVec 32 := 0#32
  let c1_i32_350 : BitVec 32 := 1#32
  let arg15 : BitVec 32 := Scf.iv c0_i32_348 c1_i32_350 k0_t3
  let v3485 : Index := Scalar.indexCast arg15
  let c976_2035 : Index := 976#32
  ![1, 2, v3485.toNat, 976]
def k0_off1116 (k0_t3 : Fin k0_t3_loop.trips) : Fin 4 → Nat :=
  let c1_i32_2036 : BitVec 32 := 1#32
  let v3489 : Index := Scalar.indexCast c1_i32_2036
  let c2_i32_2037 : BitVec 32 := 2#32
  let v3490 : Index := Scalar.indexCast c2_i32_2037
  let c0_i32_348 : BitVec 32 := 0#32
  let c1_i32_350 : BitVec 32 := 1#32
  let arg15 : BitVec 32 := Scf.iv c0_i32_348 c1_i32_350 k0_t3
  let v3491 : Index := Scalar.indexCast arg15
  let c976_2038 : Index := 976#32
  ![1, 2, v3491.toNat, 976]
def k0_off1117 (k0_t3 : Fin k0_t3_loop.trips) : Fin 4 → Nat :=
  let c1_i32_2039 : BitVec 32 := 1#32
  let v3495 : Index := Scalar.indexCast c1_i32_2039
  let c2_i32_2040 : BitVec 32 := 2#32
  let v3496 : Index := Scalar.indexCast c2_i32_2040
  let c0_i32_348 : BitVec 32 := 0#32
  let c1_i32_350 : BitVec 32 := 1#32
  let arg15 : BitVec 32 := Scf.iv c0_i32_348 c1_i32_350 k0_t3
  let v3497 : Index := Scalar.indexCast arg15
  let c992_2041 : Index := 992#32
  ![1, 2, v3497.toNat, 992]
def k0_off1118 (k0_t3 : Fin k0_t3_loop.trips) : Fin 4 → Nat :=
  let c1_i32_2042 : BitVec 32 := 1#32
  let v3501 : Index := Scalar.indexCast c1_i32_2042
  let c2_i32_2043 : BitVec 32 := 2#32
  let v3502 : Index := Scalar.indexCast c2_i32_2043
  let c0_i32_348 : BitVec 32 := 0#32
  let c1_i32_350 : BitVec 32 := 1#32
  let arg15 : BitVec 32 := Scf.iv c0_i32_348 c1_i32_350 k0_t3
  let v3503 : Index := Scalar.indexCast arg15
  let c992_2044 : Index := 992#32
  ![1, 2, v3503.toNat, 992]
def k0_off1119 (k0_t3 : Fin k0_t3_loop.trips) : Fin 4 → Nat :=
  let c1_i32_2045 : BitVec 32 := 1#32
  let v3507 : Index := Scalar.indexCast c1_i32_2045
  let c2_i32_2046 : BitVec 32 := 2#32
  let v3508 : Index := Scalar.indexCast c2_i32_2046
  let c0_i32_348 : BitVec 32 := 0#32
  let c1_i32_350 : BitVec 32 := 1#32
  let arg15 : BitVec 32 := Scf.iv c0_i32_348 c1_i32_350 k0_t3
  let v3509 : Index := Scalar.indexCast arg15
  let c1008_2047 : Index := 1008#32
  ![1, 2, v3509.toNat, 1008]
def k0_off1120 (k0_t3 : Fin k0_t3_loop.trips) : Fin 4 → Nat :=
  let c1_i32_2048 : BitVec 32 := 1#32
  let v3513 : Index := Scalar.indexCast c1_i32_2048
  let c2_i32_2049 : BitVec 32 := 2#32
  let v3514 : Index := Scalar.indexCast c2_i32_2049
  let c0_i32_348 : BitVec 32 := 0#32
  let c1_i32_350 : BitVec 32 := 1#32
  let arg15 : BitVec 32 := Scf.iv c0_i32_348 c1_i32_350 k0_t3
  let v3515 : Index := Scalar.indexCast arg15
  let c1008_2050 : Index := 1008#32
  ![1, 2, v3515.toNat, 1008]
def k0_off1121 (k0_t3 : Fin k0_t3_loop.trips) : Fin 4 → Nat :=
  let c1_i32_2051 : BitVec 32 := 1#32
  let v3519 : Index := Scalar.indexCast c1_i32_2051
  let c3_i32_2052 : BitVec 32 := 3#32
  let v3520 : Index := Scalar.indexCast c3_i32_2052
  let c0_i32_348 : BitVec 32 := 0#32
  let c1_i32_350 : BitVec 32 := 1#32
  let arg15 : BitVec 32 := Scf.iv c0_i32_348 c1_i32_350 k0_t3
  let v3521 : Index := Scalar.indexCast arg15
  let c512_2053 : Index := 512#32
  ![1, 3, v3521.toNat, 512]
def k0_off1122 (k0_t3 : Fin k0_t3_loop.trips) : Fin 4 → Nat :=
  let c1_i32_2054 : BitVec 32 := 1#32
  let v3525 : Index := Scalar.indexCast c1_i32_2054
  let c3_i32_2055 : BitVec 32 := 3#32
  let v3526 : Index := Scalar.indexCast c3_i32_2055
  let c0_i32_348 : BitVec 32 := 0#32
  let c1_i32_350 : BitVec 32 := 1#32
  let arg15 : BitVec 32 := Scf.iv c0_i32_348 c1_i32_350 k0_t3
  let v3527 : Index := Scalar.indexCast arg15
  let c512_2056 : Index := 512#32
  ![1, 3, v3527.toNat, 512]
def k0_off1123 (k0_t3 : Fin k0_t3_loop.trips) : Fin 4 → Nat :=
  let c1_i32_2057 : BitVec 32 := 1#32
  let v3531 : Index := Scalar.indexCast c1_i32_2057
  let c3_i32_2058 : BitVec 32 := 3#32
  let v3532 : Index := Scalar.indexCast c3_i32_2058
  let c0_i32_348 : BitVec 32 := 0#32
  let c1_i32_350 : BitVec 32 := 1#32
  let arg15 : BitVec 32 := Scf.iv c0_i32_348 c1_i32_350 k0_t3
  let v3533 : Index := Scalar.indexCast arg15
  let c528_2059 : Index := 528#32
  ![1, 3, v3533.toNat, 528]
def k0_off1124 (k0_t3 : Fin k0_t3_loop.trips) : Fin 4 → Nat :=
  let c1_i32_2060 : BitVec 32 := 1#32
  let v3537 : Index := Scalar.indexCast c1_i32_2060
  let c3_i32_2061 : BitVec 32 := 3#32
  let v3538 : Index := Scalar.indexCast c3_i32_2061
  let c0_i32_348 : BitVec 32 := 0#32
  let c1_i32_350 : BitVec 32 := 1#32
  let arg15 : BitVec 32 := Scf.iv c0_i32_348 c1_i32_350 k0_t3
  let v3539 : Index := Scalar.indexCast arg15
  let c528_2062 : Index := 528#32
  ![1, 3, v3539.toNat, 528]
def k0_off1125 (k0_t3 : Fin k0_t3_loop.trips) : Fin 4 → Nat :=
  let c1_i32_2063 : BitVec 32 := 1#32
  let v3543 : Index := Scalar.indexCast c1_i32_2063
  let c3_i32_2064 : BitVec 32 := 3#32
  let v3544 : Index := Scalar.indexCast c3_i32_2064
  let c0_i32_348 : BitVec 32 := 0#32
  let c1_i32_350 : BitVec 32 := 1#32
  let arg15 : BitVec 32 := Scf.iv c0_i32_348 c1_i32_350 k0_t3
  let v3545 : Index := Scalar.indexCast arg15
  let c544_2065 : Index := 544#32
  ![1, 3, v3545.toNat, 544]
def k0_off1126 (k0_t3 : Fin k0_t3_loop.trips) : Fin 4 → Nat :=
  let c1_i32_2066 : BitVec 32 := 1#32
  let v3549 : Index := Scalar.indexCast c1_i32_2066
  let c3_i32_2067 : BitVec 32 := 3#32
  let v3550 : Index := Scalar.indexCast c3_i32_2067
  let c0_i32_348 : BitVec 32 := 0#32
  let c1_i32_350 : BitVec 32 := 1#32
  let arg15 : BitVec 32 := Scf.iv c0_i32_348 c1_i32_350 k0_t3
  let v3551 : Index := Scalar.indexCast arg15
  let c544_2068 : Index := 544#32
  ![1, 3, v3551.toNat, 544]
def k0_off1127 (k0_t3 : Fin k0_t3_loop.trips) : Fin 4 → Nat :=
  let c1_i32_2069 : BitVec 32 := 1#32
  let v3555 : Index := Scalar.indexCast c1_i32_2069
  let c3_i32_2070 : BitVec 32 := 3#32
  let v3556 : Index := Scalar.indexCast c3_i32_2070
  let c0_i32_348 : BitVec 32 := 0#32
  let c1_i32_350 : BitVec 32 := 1#32
  let arg15 : BitVec 32 := Scf.iv c0_i32_348 c1_i32_350 k0_t3
  let v3557 : Index := Scalar.indexCast arg15
  let c560_2071 : Index := 560#32
  ![1, 3, v3557.toNat, 560]
def k0_off1128 (k0_t3 : Fin k0_t3_loop.trips) : Fin 4 → Nat :=
  let c1_i32_2072 : BitVec 32 := 1#32
  let v3561 : Index := Scalar.indexCast c1_i32_2072
  let c3_i32_2073 : BitVec 32 := 3#32
  let v3562 : Index := Scalar.indexCast c3_i32_2073
  let c0_i32_348 : BitVec 32 := 0#32
  let c1_i32_350 : BitVec 32 := 1#32
  let arg15 : BitVec 32 := Scf.iv c0_i32_348 c1_i32_350 k0_t3
  let v3563 : Index := Scalar.indexCast arg15
  let c560_2074 : Index := 560#32
  ![1, 3, v3563.toNat, 560]
def k0_off1129 (k0_t3 : Fin k0_t3_loop.trips) : Fin 4 → Nat :=
  let c1_i32_2075 : BitVec 32 := 1#32
  let v3567 : Index := Scalar.indexCast c1_i32_2075
  let c3_i32_2076 : BitVec 32 := 3#32
  let v3568 : Index := Scalar.indexCast c3_i32_2076
  let c0_i32_348 : BitVec 32 := 0#32
  let c1_i32_350 : BitVec 32 := 1#32
  let arg15 : BitVec 32 := Scf.iv c0_i32_348 c1_i32_350 k0_t3
  let v3569 : Index := Scalar.indexCast arg15
  let c576_2077 : Index := 576#32
  ![1, 3, v3569.toNat, 576]
def k0_off1130 (k0_t3 : Fin k0_t3_loop.trips) : Fin 4 → Nat :=
  let c1_i32_2078 : BitVec 32 := 1#32
  let v3573 : Index := Scalar.indexCast c1_i32_2078
  let c3_i32_2079 : BitVec 32 := 3#32
  let v3574 : Index := Scalar.indexCast c3_i32_2079
  let c0_i32_348 : BitVec 32 := 0#32
  let c1_i32_350 : BitVec 32 := 1#32
  let arg15 : BitVec 32 := Scf.iv c0_i32_348 c1_i32_350 k0_t3
  let v3575 : Index := Scalar.indexCast arg15
  let c576_2080 : Index := 576#32
  ![1, 3, v3575.toNat, 576]
def k0_off1131 (k0_t3 : Fin k0_t3_loop.trips) : Fin 4 → Nat :=
  let c1_i32_2081 : BitVec 32 := 1#32
  let v3579 : Index := Scalar.indexCast c1_i32_2081
  let c3_i32_2082 : BitVec 32 := 3#32
  let v3580 : Index := Scalar.indexCast c3_i32_2082
  let c0_i32_348 : BitVec 32 := 0#32
  let c1_i32_350 : BitVec 32 := 1#32
  let arg15 : BitVec 32 := Scf.iv c0_i32_348 c1_i32_350 k0_t3
  let v3581 : Index := Scalar.indexCast arg15
  let c592_2083 : Index := 592#32
  ![1, 3, v3581.toNat, 592]
def k0_off1132 (k0_t3 : Fin k0_t3_loop.trips) : Fin 4 → Nat :=
  let c1_i32_2084 : BitVec 32 := 1#32
  let v3585 : Index := Scalar.indexCast c1_i32_2084
  let c3_i32_2085 : BitVec 32 := 3#32
  let v3586 : Index := Scalar.indexCast c3_i32_2085
  let c0_i32_348 : BitVec 32 := 0#32
  let c1_i32_350 : BitVec 32 := 1#32
  let arg15 : BitVec 32 := Scf.iv c0_i32_348 c1_i32_350 k0_t3
  let v3587 : Index := Scalar.indexCast arg15
  let c592_2086 : Index := 592#32
  ![1, 3, v3587.toNat, 592]
def k0_off1133 (k0_t3 : Fin k0_t3_loop.trips) : Fin 4 → Nat :=
  let c1_i32_2087 : BitVec 32 := 1#32
  let v3591 : Index := Scalar.indexCast c1_i32_2087
  let c3_i32_2088 : BitVec 32 := 3#32
  let v3592 : Index := Scalar.indexCast c3_i32_2088
  let c0_i32_348 : BitVec 32 := 0#32
  let c1_i32_350 : BitVec 32 := 1#32
  let arg15 : BitVec 32 := Scf.iv c0_i32_348 c1_i32_350 k0_t3
  let v3593 : Index := Scalar.indexCast arg15
  let c608_2089 : Index := 608#32
  ![1, 3, v3593.toNat, 608]
def k0_off1134 (k0_t3 : Fin k0_t3_loop.trips) : Fin 4 → Nat :=
  let c1_i32_2090 : BitVec 32 := 1#32
  let v3597 : Index := Scalar.indexCast c1_i32_2090
  let c3_i32_2091 : BitVec 32 := 3#32
  let v3598 : Index := Scalar.indexCast c3_i32_2091
  let c0_i32_348 : BitVec 32 := 0#32
  let c1_i32_350 : BitVec 32 := 1#32
  let arg15 : BitVec 32 := Scf.iv c0_i32_348 c1_i32_350 k0_t3
  let v3599 : Index := Scalar.indexCast arg15
  let c608_2092 : Index := 608#32
  ![1, 3, v3599.toNat, 608]
def k0_off1135 (k0_t3 : Fin k0_t3_loop.trips) : Fin 4 → Nat :=
  let c1_i32_2093 : BitVec 32 := 1#32
  let v3603 : Index := Scalar.indexCast c1_i32_2093
  let c3_i32_2094 : BitVec 32 := 3#32
  let v3604 : Index := Scalar.indexCast c3_i32_2094
  let c0_i32_348 : BitVec 32 := 0#32
  let c1_i32_350 : BitVec 32 := 1#32
  let arg15 : BitVec 32 := Scf.iv c0_i32_348 c1_i32_350 k0_t3
  let v3605 : Index := Scalar.indexCast arg15
  let c624_2095 : Index := 624#32
  ![1, 3, v3605.toNat, 624]
def k0_off1136 (k0_t3 : Fin k0_t3_loop.trips) : Fin 4 → Nat :=
  let c1_i32_2096 : BitVec 32 := 1#32
  let v3609 : Index := Scalar.indexCast c1_i32_2096
  let c3_i32_2097 : BitVec 32 := 3#32
  let v3610 : Index := Scalar.indexCast c3_i32_2097
  let c0_i32_348 : BitVec 32 := 0#32
  let c1_i32_350 : BitVec 32 := 1#32
  let arg15 : BitVec 32 := Scf.iv c0_i32_348 c1_i32_350 k0_t3
  let v3611 : Index := Scalar.indexCast arg15
  let c624_2098 : Index := 624#32
  ![1, 3, v3611.toNat, 624]
def k0_off1137 (k0_t3 : Fin k0_t3_loop.trips) : Fin 4 → Nat :=
  let c1_i32_2099 : BitVec 32 := 1#32
  let v3615 : Index := Scalar.indexCast c1_i32_2099
  let c3_i32_2100 : BitVec 32 := 3#32
  let v3616 : Index := Scalar.indexCast c3_i32_2100
  let c0_i32_348 : BitVec 32 := 0#32
  let c1_i32_350 : BitVec 32 := 1#32
  let arg15 : BitVec 32 := Scf.iv c0_i32_348 c1_i32_350 k0_t3
  let v3617 : Index := Scalar.indexCast arg15
  let c640_2101 : Index := 640#32
  ![1, 3, v3617.toNat, 640]
def k0_off1138 (k0_t3 : Fin k0_t3_loop.trips) : Fin 4 → Nat :=
  let c1_i32_2102 : BitVec 32 := 1#32
  let v3621 : Index := Scalar.indexCast c1_i32_2102
  let c3_i32_2103 : BitVec 32 := 3#32
  let v3622 : Index := Scalar.indexCast c3_i32_2103
  let c0_i32_348 : BitVec 32 := 0#32
  let c1_i32_350 : BitVec 32 := 1#32
  let arg15 : BitVec 32 := Scf.iv c0_i32_348 c1_i32_350 k0_t3
  let v3623 : Index := Scalar.indexCast arg15
  let c640_2104 : Index := 640#32
  ![1, 3, v3623.toNat, 640]
def k0_off1139 (k0_t3 : Fin k0_t3_loop.trips) : Fin 4 → Nat :=
  let c1_i32_2105 : BitVec 32 := 1#32
  let v3627 : Index := Scalar.indexCast c1_i32_2105
  let c3_i32_2106 : BitVec 32 := 3#32
  let v3628 : Index := Scalar.indexCast c3_i32_2106
  let c0_i32_348 : BitVec 32 := 0#32
  let c1_i32_350 : BitVec 32 := 1#32
  let arg15 : BitVec 32 := Scf.iv c0_i32_348 c1_i32_350 k0_t3
  let v3629 : Index := Scalar.indexCast arg15
  let c656_2107 : Index := 656#32
  ![1, 3, v3629.toNat, 656]
def k0_off1140 (k0_t3 : Fin k0_t3_loop.trips) : Fin 4 → Nat :=
  let c1_i32_2108 : BitVec 32 := 1#32
  let v3633 : Index := Scalar.indexCast c1_i32_2108
  let c3_i32_2109 : BitVec 32 := 3#32
  let v3634 : Index := Scalar.indexCast c3_i32_2109
  let c0_i32_348 : BitVec 32 := 0#32
  let c1_i32_350 : BitVec 32 := 1#32
  let arg15 : BitVec 32 := Scf.iv c0_i32_348 c1_i32_350 k0_t3
  let v3635 : Index := Scalar.indexCast arg15
  let c656_2110 : Index := 656#32
  ![1, 3, v3635.toNat, 656]
def k0_off1141 (k0_t3 : Fin k0_t3_loop.trips) : Fin 4 → Nat :=
  let c1_i32_2111 : BitVec 32 := 1#32
  let v3639 : Index := Scalar.indexCast c1_i32_2111
  let c3_i32_2112 : BitVec 32 := 3#32
  let v3640 : Index := Scalar.indexCast c3_i32_2112
  let c0_i32_348 : BitVec 32 := 0#32
  let c1_i32_350 : BitVec 32 := 1#32
  let arg15 : BitVec 32 := Scf.iv c0_i32_348 c1_i32_350 k0_t3
  let v3641 : Index := Scalar.indexCast arg15
  let c672_2113 : Index := 672#32
  ![1, 3, v3641.toNat, 672]
def k0_off1142 (k0_t3 : Fin k0_t3_loop.trips) : Fin 4 → Nat :=
  let c1_i32_2114 : BitVec 32 := 1#32
  let v3645 : Index := Scalar.indexCast c1_i32_2114
  let c3_i32_2115 : BitVec 32 := 3#32
  let v3646 : Index := Scalar.indexCast c3_i32_2115
  let c0_i32_348 : BitVec 32 := 0#32
  let c1_i32_350 : BitVec 32 := 1#32
  let arg15 : BitVec 32 := Scf.iv c0_i32_348 c1_i32_350 k0_t3
  let v3647 : Index := Scalar.indexCast arg15
  let c672_2116 : Index := 672#32
  ![1, 3, v3647.toNat, 672]
def k0_off1143 (k0_t3 : Fin k0_t3_loop.trips) : Fin 4 → Nat :=
  let c1_i32_2117 : BitVec 32 := 1#32
  let v3651 : Index := Scalar.indexCast c1_i32_2117
  let c3_i32_2118 : BitVec 32 := 3#32
  let v3652 : Index := Scalar.indexCast c3_i32_2118
  let c0_i32_348 : BitVec 32 := 0#32
  let c1_i32_350 : BitVec 32 := 1#32
  let arg15 : BitVec 32 := Scf.iv c0_i32_348 c1_i32_350 k0_t3
  let v3653 : Index := Scalar.indexCast arg15
  let c688_2119 : Index := 688#32
  ![1, 3, v3653.toNat, 688]
def k0_off1144 (k0_t3 : Fin k0_t3_loop.trips) : Fin 4 → Nat :=
  let c1_i32_2120 : BitVec 32 := 1#32
  let v3657 : Index := Scalar.indexCast c1_i32_2120
  let c3_i32_2121 : BitVec 32 := 3#32
  let v3658 : Index := Scalar.indexCast c3_i32_2121
  let c0_i32_348 : BitVec 32 := 0#32
  let c1_i32_350 : BitVec 32 := 1#32
  let arg15 : BitVec 32 := Scf.iv c0_i32_348 c1_i32_350 k0_t3
  let v3659 : Index := Scalar.indexCast arg15
  let c688_2122 : Index := 688#32
  ![1, 3, v3659.toNat, 688]
def k0_off1145 (k0_t3 : Fin k0_t3_loop.trips) : Fin 4 → Nat :=
  let c1_i32_2123 : BitVec 32 := 1#32
  let v3663 : Index := Scalar.indexCast c1_i32_2123
  let c3_i32_2124 : BitVec 32 := 3#32
  let v3664 : Index := Scalar.indexCast c3_i32_2124
  let c0_i32_348 : BitVec 32 := 0#32
  let c1_i32_350 : BitVec 32 := 1#32
  let arg15 : BitVec 32 := Scf.iv c0_i32_348 c1_i32_350 k0_t3
  let v3665 : Index := Scalar.indexCast arg15
  let c704_2125 : Index := 704#32
  ![1, 3, v3665.toNat, 704]
def k0_off1146 (k0_t3 : Fin k0_t3_loop.trips) : Fin 4 → Nat :=
  let c1_i32_2126 : BitVec 32 := 1#32
  let v3669 : Index := Scalar.indexCast c1_i32_2126
  let c3_i32_2127 : BitVec 32 := 3#32
  let v3670 : Index := Scalar.indexCast c3_i32_2127
  let c0_i32_348 : BitVec 32 := 0#32
  let c1_i32_350 : BitVec 32 := 1#32
  let arg15 : BitVec 32 := Scf.iv c0_i32_348 c1_i32_350 k0_t3
  let v3671 : Index := Scalar.indexCast arg15
  let c704_2128 : Index := 704#32
  ![1, 3, v3671.toNat, 704]
def k0_off1147 (k0_t3 : Fin k0_t3_loop.trips) : Fin 4 → Nat :=
  let c1_i32_2129 : BitVec 32 := 1#32
  let v3675 : Index := Scalar.indexCast c1_i32_2129
  let c3_i32_2130 : BitVec 32 := 3#32
  let v3676 : Index := Scalar.indexCast c3_i32_2130
  let c0_i32_348 : BitVec 32 := 0#32
  let c1_i32_350 : BitVec 32 := 1#32
  let arg15 : BitVec 32 := Scf.iv c0_i32_348 c1_i32_350 k0_t3
  let v3677 : Index := Scalar.indexCast arg15
  let c720_2131 : Index := 720#32
  ![1, 3, v3677.toNat, 720]
def k0_off1148 (k0_t3 : Fin k0_t3_loop.trips) : Fin 4 → Nat :=
  let c1_i32_2132 : BitVec 32 := 1#32
  let v3681 : Index := Scalar.indexCast c1_i32_2132
  let c3_i32_2133 : BitVec 32 := 3#32
  let v3682 : Index := Scalar.indexCast c3_i32_2133
  let c0_i32_348 : BitVec 32 := 0#32
  let c1_i32_350 : BitVec 32 := 1#32
  let arg15 : BitVec 32 := Scf.iv c0_i32_348 c1_i32_350 k0_t3
  let v3683 : Index := Scalar.indexCast arg15
  let c720_2134 : Index := 720#32
  ![1, 3, v3683.toNat, 720]
def k0_off1149 (k0_t3 : Fin k0_t3_loop.trips) : Fin 4 → Nat :=
  let c1_i32_2135 : BitVec 32 := 1#32
  let v3687 : Index := Scalar.indexCast c1_i32_2135
  let c3_i32_2136 : BitVec 32 := 3#32
  let v3688 : Index := Scalar.indexCast c3_i32_2136
  let c0_i32_348 : BitVec 32 := 0#32
  let c1_i32_350 : BitVec 32 := 1#32
  let arg15 : BitVec 32 := Scf.iv c0_i32_348 c1_i32_350 k0_t3
  let v3689 : Index := Scalar.indexCast arg15
  let c736_2137 : Index := 736#32
  ![1, 3, v3689.toNat, 736]
def k0_off1150 (k0_t3 : Fin k0_t3_loop.trips) : Fin 4 → Nat :=
  let c1_i32_2138 : BitVec 32 := 1#32
  let v3693 : Index := Scalar.indexCast c1_i32_2138
  let c3_i32_2139 : BitVec 32 := 3#32
  let v3694 : Index := Scalar.indexCast c3_i32_2139
  let c0_i32_348 : BitVec 32 := 0#32
  let c1_i32_350 : BitVec 32 := 1#32
  let arg15 : BitVec 32 := Scf.iv c0_i32_348 c1_i32_350 k0_t3
  let v3695 : Index := Scalar.indexCast arg15
  let c736_2140 : Index := 736#32
  ![1, 3, v3695.toNat, 736]
def k0_off1151 (k0_t3 : Fin k0_t3_loop.trips) : Fin 4 → Nat :=
  let c1_i32_2141 : BitVec 32 := 1#32
  let v3699 : Index := Scalar.indexCast c1_i32_2141
  let c3_i32_2142 : BitVec 32 := 3#32
  let v3700 : Index := Scalar.indexCast c3_i32_2142
  let c0_i32_348 : BitVec 32 := 0#32
  let c1_i32_350 : BitVec 32 := 1#32
  let arg15 : BitVec 32 := Scf.iv c0_i32_348 c1_i32_350 k0_t3
  let v3701 : Index := Scalar.indexCast arg15
  let c752_2143 : Index := 752#32
  ![1, 3, v3701.toNat, 752]
def k0_off1152 (k0_t3 : Fin k0_t3_loop.trips) : Fin 4 → Nat :=
  let c1_i32_2144 : BitVec 32 := 1#32
  let v3705 : Index := Scalar.indexCast c1_i32_2144
  let c3_i32_2145 : BitVec 32 := 3#32
  let v3706 : Index := Scalar.indexCast c3_i32_2145
  let c0_i32_348 : BitVec 32 := 0#32
  let c1_i32_350 : BitVec 32 := 1#32
  let arg15 : BitVec 32 := Scf.iv c0_i32_348 c1_i32_350 k0_t3
  let v3707 : Index := Scalar.indexCast arg15
  let c752_2146 : Index := 752#32
  ![1, 3, v3707.toNat, 752]
def k0_off1153 (k0_t3 : Fin k0_t3_loop.trips) : Fin 4 → Nat :=
  let c1_i32_2147 : BitVec 32 := 1#32
  let v3711 : Index := Scalar.indexCast c1_i32_2147
  let c3_i32_2148 : BitVec 32 := 3#32
  let v3712 : Index := Scalar.indexCast c3_i32_2148
  let c0_i32_348 : BitVec 32 := 0#32
  let c1_i32_350 : BitVec 32 := 1#32
  let arg15 : BitVec 32 := Scf.iv c0_i32_348 c1_i32_350 k0_t3
  let v3713 : Index := Scalar.indexCast arg15
  let c768_2149 : Index := 768#32
  ![1, 3, v3713.toNat, 768]
def k0_off1154 (k0_t3 : Fin k0_t3_loop.trips) : Fin 4 → Nat :=
  let c1_i32_2150 : BitVec 32 := 1#32
  let v3717 : Index := Scalar.indexCast c1_i32_2150
  let c3_i32_2151 : BitVec 32 := 3#32
  let v3718 : Index := Scalar.indexCast c3_i32_2151
  let c0_i32_348 : BitVec 32 := 0#32
  let c1_i32_350 : BitVec 32 := 1#32
  let arg15 : BitVec 32 := Scf.iv c0_i32_348 c1_i32_350 k0_t3
  let v3719 : Index := Scalar.indexCast arg15
  let c768_2152 : Index := 768#32
  ![1, 3, v3719.toNat, 768]
def k0_off1155 (k0_t3 : Fin k0_t3_loop.trips) : Fin 4 → Nat :=
  let c1_i32_2153 : BitVec 32 := 1#32
  let v3723 : Index := Scalar.indexCast c1_i32_2153
  let c3_i32_2154 : BitVec 32 := 3#32
  let v3724 : Index := Scalar.indexCast c3_i32_2154
  let c0_i32_348 : BitVec 32 := 0#32
  let c1_i32_350 : BitVec 32 := 1#32
  let arg15 : BitVec 32 := Scf.iv c0_i32_348 c1_i32_350 k0_t3
  let v3725 : Index := Scalar.indexCast arg15
  let c784_2155 : Index := 784#32
  ![1, 3, v3725.toNat, 784]
def k0_off1156 (k0_t3 : Fin k0_t3_loop.trips) : Fin 4 → Nat :=
  let c1_i32_2156 : BitVec 32 := 1#32
  let v3729 : Index := Scalar.indexCast c1_i32_2156
  let c3_i32_2157 : BitVec 32 := 3#32
  let v3730 : Index := Scalar.indexCast c3_i32_2157
  let c0_i32_348 : BitVec 32 := 0#32
  let c1_i32_350 : BitVec 32 := 1#32
  let arg15 : BitVec 32 := Scf.iv c0_i32_348 c1_i32_350 k0_t3
  let v3731 : Index := Scalar.indexCast arg15
  let c784_2158 : Index := 784#32
  ![1, 3, v3731.toNat, 784]
def k0_off1157 (k0_t3 : Fin k0_t3_loop.trips) : Fin 4 → Nat :=
  let c1_i32_2159 : BitVec 32 := 1#32
  let v3735 : Index := Scalar.indexCast c1_i32_2159
  let c3_i32_2160 : BitVec 32 := 3#32
  let v3736 : Index := Scalar.indexCast c3_i32_2160
  let c0_i32_348 : BitVec 32 := 0#32
  let c1_i32_350 : BitVec 32 := 1#32
  let arg15 : BitVec 32 := Scf.iv c0_i32_348 c1_i32_350 k0_t3
  let v3737 : Index := Scalar.indexCast arg15
  let c800_2161 : Index := 800#32
  ![1, 3, v3737.toNat, 800]
def k0_off1158 (k0_t3 : Fin k0_t3_loop.trips) : Fin 4 → Nat :=
  let c1_i32_2162 : BitVec 32 := 1#32
  let v3741 : Index := Scalar.indexCast c1_i32_2162
  let c3_i32_2163 : BitVec 32 := 3#32
  let v3742 : Index := Scalar.indexCast c3_i32_2163
  let c0_i32_348 : BitVec 32 := 0#32
  let c1_i32_350 : BitVec 32 := 1#32
  let arg15 : BitVec 32 := Scf.iv c0_i32_348 c1_i32_350 k0_t3
  let v3743 : Index := Scalar.indexCast arg15
  let c800_2164 : Index := 800#32
  ![1, 3, v3743.toNat, 800]
def k0_off1159 (k0_t3 : Fin k0_t3_loop.trips) : Fin 4 → Nat :=
  let c1_i32_2165 : BitVec 32 := 1#32
  let v3747 : Index := Scalar.indexCast c1_i32_2165
  let c3_i32_2166 : BitVec 32 := 3#32
  let v3748 : Index := Scalar.indexCast c3_i32_2166
  let c0_i32_348 : BitVec 32 := 0#32
  let c1_i32_350 : BitVec 32 := 1#32
  let arg15 : BitVec 32 := Scf.iv c0_i32_348 c1_i32_350 k0_t3
  let v3749 : Index := Scalar.indexCast arg15
  let c816_2167 : Index := 816#32
  ![1, 3, v3749.toNat, 816]
def k0_off1160 (k0_t3 : Fin k0_t3_loop.trips) : Fin 4 → Nat :=
  let c1_i32_2168 : BitVec 32 := 1#32
  let v3753 : Index := Scalar.indexCast c1_i32_2168
  let c3_i32_2169 : BitVec 32 := 3#32
  let v3754 : Index := Scalar.indexCast c3_i32_2169
  let c0_i32_348 : BitVec 32 := 0#32
  let c1_i32_350 : BitVec 32 := 1#32
  let arg15 : BitVec 32 := Scf.iv c0_i32_348 c1_i32_350 k0_t3
  let v3755 : Index := Scalar.indexCast arg15
  let c816_2170 : Index := 816#32
  ![1, 3, v3755.toNat, 816]
def k0_off1161 (k0_t3 : Fin k0_t3_loop.trips) : Fin 4 → Nat :=
  let c1_i32_2171 : BitVec 32 := 1#32
  let v3759 : Index := Scalar.indexCast c1_i32_2171
  let c3_i32_2172 : BitVec 32 := 3#32
  let v3760 : Index := Scalar.indexCast c3_i32_2172
  let c0_i32_348 : BitVec 32 := 0#32
  let c1_i32_350 : BitVec 32 := 1#32
  let arg15 : BitVec 32 := Scf.iv c0_i32_348 c1_i32_350 k0_t3
  let v3761 : Index := Scalar.indexCast arg15
  let c832_2173 : Index := 832#32
  ![1, 3, v3761.toNat, 832]
def k0_off1162 (k0_t3 : Fin k0_t3_loop.trips) : Fin 4 → Nat :=
  let c1_i32_2174 : BitVec 32 := 1#32
  let v3765 : Index := Scalar.indexCast c1_i32_2174
  let c3_i32_2175 : BitVec 32 := 3#32
  let v3766 : Index := Scalar.indexCast c3_i32_2175
  let c0_i32_348 : BitVec 32 := 0#32
  let c1_i32_350 : BitVec 32 := 1#32
  let arg15 : BitVec 32 := Scf.iv c0_i32_348 c1_i32_350 k0_t3
  let v3767 : Index := Scalar.indexCast arg15
  let c832_2176 : Index := 832#32
  ![1, 3, v3767.toNat, 832]
def k0_off1163 (k0_t3 : Fin k0_t3_loop.trips) : Fin 4 → Nat :=
  let c1_i32_2177 : BitVec 32 := 1#32
  let v3771 : Index := Scalar.indexCast c1_i32_2177
  let c3_i32_2178 : BitVec 32 := 3#32
  let v3772 : Index := Scalar.indexCast c3_i32_2178
  let c0_i32_348 : BitVec 32 := 0#32
  let c1_i32_350 : BitVec 32 := 1#32
  let arg15 : BitVec 32 := Scf.iv c0_i32_348 c1_i32_350 k0_t3
  let v3773 : Index := Scalar.indexCast arg15
  let c848_2179 : Index := 848#32
  ![1, 3, v3773.toNat, 848]
def k0_off1164 (k0_t3 : Fin k0_t3_loop.trips) : Fin 4 → Nat :=
  let c1_i32_2180 : BitVec 32 := 1#32
  let v3777 : Index := Scalar.indexCast c1_i32_2180
  let c3_i32_2181 : BitVec 32 := 3#32
  let v3778 : Index := Scalar.indexCast c3_i32_2181
  let c0_i32_348 : BitVec 32 := 0#32
  let c1_i32_350 : BitVec 32 := 1#32
  let arg15 : BitVec 32 := Scf.iv c0_i32_348 c1_i32_350 k0_t3
  let v3779 : Index := Scalar.indexCast arg15
  let c848_2182 : Index := 848#32
  ![1, 3, v3779.toNat, 848]
def k0_off1165 (k0_t3 : Fin k0_t3_loop.trips) : Fin 4 → Nat :=
  let c1_i32_2183 : BitVec 32 := 1#32
  let v3783 : Index := Scalar.indexCast c1_i32_2183
  let c3_i32_2184 : BitVec 32 := 3#32
  let v3784 : Index := Scalar.indexCast c3_i32_2184
  let c0_i32_348 : BitVec 32 := 0#32
  let c1_i32_350 : BitVec 32 := 1#32
  let arg15 : BitVec 32 := Scf.iv c0_i32_348 c1_i32_350 k0_t3
  let v3785 : Index := Scalar.indexCast arg15
  let c864_2185 : Index := 864#32
  ![1, 3, v3785.toNat, 864]
def k0_off1166 (k0_t3 : Fin k0_t3_loop.trips) : Fin 4 → Nat :=
  let c1_i32_2186 : BitVec 32 := 1#32
  let v3789 : Index := Scalar.indexCast c1_i32_2186
  let c3_i32_2187 : BitVec 32 := 3#32
  let v3790 : Index := Scalar.indexCast c3_i32_2187
  let c0_i32_348 : BitVec 32 := 0#32
  let c1_i32_350 : BitVec 32 := 1#32
  let arg15 : BitVec 32 := Scf.iv c0_i32_348 c1_i32_350 k0_t3
  let v3791 : Index := Scalar.indexCast arg15
  let c864_2188 : Index := 864#32
  ![1, 3, v3791.toNat, 864]
def k0_off1167 (k0_t3 : Fin k0_t3_loop.trips) : Fin 4 → Nat :=
  let c1_i32_2189 : BitVec 32 := 1#32
  let v3795 : Index := Scalar.indexCast c1_i32_2189
  let c3_i32_2190 : BitVec 32 := 3#32
  let v3796 : Index := Scalar.indexCast c3_i32_2190
  let c0_i32_348 : BitVec 32 := 0#32
  let c1_i32_350 : BitVec 32 := 1#32
  let arg15 : BitVec 32 := Scf.iv c0_i32_348 c1_i32_350 k0_t3
  let v3797 : Index := Scalar.indexCast arg15
  let c880_2191 : Index := 880#32
  ![1, 3, v3797.toNat, 880]
def k0_off1168 (k0_t3 : Fin k0_t3_loop.trips) : Fin 4 → Nat :=
  let c1_i32_2192 : BitVec 32 := 1#32
  let v3801 : Index := Scalar.indexCast c1_i32_2192
  let c3_i32_2193 : BitVec 32 := 3#32
  let v3802 : Index := Scalar.indexCast c3_i32_2193
  let c0_i32_348 : BitVec 32 := 0#32
  let c1_i32_350 : BitVec 32 := 1#32
  let arg15 : BitVec 32 := Scf.iv c0_i32_348 c1_i32_350 k0_t3
  let v3803 : Index := Scalar.indexCast arg15
  let c880_2194 : Index := 880#32
  ![1, 3, v3803.toNat, 880]
def k0_off1169 (k0_t3 : Fin k0_t3_loop.trips) : Fin 4 → Nat :=
  let c1_i32_2195 : BitVec 32 := 1#32
  let v3807 : Index := Scalar.indexCast c1_i32_2195
  let c3_i32_2196 : BitVec 32 := 3#32
  let v3808 : Index := Scalar.indexCast c3_i32_2196
  let c0_i32_348 : BitVec 32 := 0#32
  let c1_i32_350 : BitVec 32 := 1#32
  let arg15 : BitVec 32 := Scf.iv c0_i32_348 c1_i32_350 k0_t3
  let v3809 : Index := Scalar.indexCast arg15
  let c896_2197 : Index := 896#32
  ![1, 3, v3809.toNat, 896]
def k0_off1170 (k0_t3 : Fin k0_t3_loop.trips) : Fin 4 → Nat :=
  let c1_i32_2198 : BitVec 32 := 1#32
  let v3813 : Index := Scalar.indexCast c1_i32_2198
  let c3_i32_2199 : BitVec 32 := 3#32
  let v3814 : Index := Scalar.indexCast c3_i32_2199
  let c0_i32_348 : BitVec 32 := 0#32
  let c1_i32_350 : BitVec 32 := 1#32
  let arg15 : BitVec 32 := Scf.iv c0_i32_348 c1_i32_350 k0_t3
  let v3815 : Index := Scalar.indexCast arg15
  let c896_2200 : Index := 896#32
  ![1, 3, v3815.toNat, 896]
def k0_off1171 (k0_t3 : Fin k0_t3_loop.trips) : Fin 4 → Nat :=
  let c1_i32_2201 : BitVec 32 := 1#32
  let v3819 : Index := Scalar.indexCast c1_i32_2201
  let c3_i32_2202 : BitVec 32 := 3#32
  let v3820 : Index := Scalar.indexCast c3_i32_2202
  let c0_i32_348 : BitVec 32 := 0#32
  let c1_i32_350 : BitVec 32 := 1#32
  let arg15 : BitVec 32 := Scf.iv c0_i32_348 c1_i32_350 k0_t3
  let v3821 : Index := Scalar.indexCast arg15
  let c912_2203 : Index := 912#32
  ![1, 3, v3821.toNat, 912]
def k0_off1172 (k0_t3 : Fin k0_t3_loop.trips) : Fin 4 → Nat :=
  let c1_i32_2204 : BitVec 32 := 1#32
  let v3825 : Index := Scalar.indexCast c1_i32_2204
  let c3_i32_2205 : BitVec 32 := 3#32
  let v3826 : Index := Scalar.indexCast c3_i32_2205
  let c0_i32_348 : BitVec 32 := 0#32
  let c1_i32_350 : BitVec 32 := 1#32
  let arg15 : BitVec 32 := Scf.iv c0_i32_348 c1_i32_350 k0_t3
  let v3827 : Index := Scalar.indexCast arg15
  let c912_2206 : Index := 912#32
  ![1, 3, v3827.toNat, 912]
def k0_off1173 (k0_t3 : Fin k0_t3_loop.trips) : Fin 4 → Nat :=
  let c1_i32_2207 : BitVec 32 := 1#32
  let v3831 : Index := Scalar.indexCast c1_i32_2207
  let c3_i32_2208 : BitVec 32 := 3#32
  let v3832 : Index := Scalar.indexCast c3_i32_2208
  let c0_i32_348 : BitVec 32 := 0#32
  let c1_i32_350 : BitVec 32 := 1#32
  let arg15 : BitVec 32 := Scf.iv c0_i32_348 c1_i32_350 k0_t3
  let v3833 : Index := Scalar.indexCast arg15
  let c928_2209 : Index := 928#32
  ![1, 3, v3833.toNat, 928]
def k0_off1174 (k0_t3 : Fin k0_t3_loop.trips) : Fin 4 → Nat :=
  let c1_i32_2210 : BitVec 32 := 1#32
  let v3837 : Index := Scalar.indexCast c1_i32_2210
  let c3_i32_2211 : BitVec 32 := 3#32
  let v3838 : Index := Scalar.indexCast c3_i32_2211
  let c0_i32_348 : BitVec 32 := 0#32
  let c1_i32_350 : BitVec 32 := 1#32
  let arg15 : BitVec 32 := Scf.iv c0_i32_348 c1_i32_350 k0_t3
  let v3839 : Index := Scalar.indexCast arg15
  let c928_2212 : Index := 928#32
  ![1, 3, v3839.toNat, 928]
def k0_off1175 (k0_t3 : Fin k0_t3_loop.trips) : Fin 4 → Nat :=
  let c1_i32_2213 : BitVec 32 := 1#32
  let v3843 : Index := Scalar.indexCast c1_i32_2213
  let c3_i32_2214 : BitVec 32 := 3#32
  let v3844 : Index := Scalar.indexCast c3_i32_2214
  let c0_i32_348 : BitVec 32 := 0#32
  let c1_i32_350 : BitVec 32 := 1#32
  let arg15 : BitVec 32 := Scf.iv c0_i32_348 c1_i32_350 k0_t3
  let v3845 : Index := Scalar.indexCast arg15
  let c944_2215 : Index := 944#32
  ![1, 3, v3845.toNat, 944]
def k0_off1176 (k0_t3 : Fin k0_t3_loop.trips) : Fin 4 → Nat :=
  let c1_i32_2216 : BitVec 32 := 1#32
  let v3849 : Index := Scalar.indexCast c1_i32_2216
  let c3_i32_2217 : BitVec 32 := 3#32
  let v3850 : Index := Scalar.indexCast c3_i32_2217
  let c0_i32_348 : BitVec 32 := 0#32
  let c1_i32_350 : BitVec 32 := 1#32
  let arg15 : BitVec 32 := Scf.iv c0_i32_348 c1_i32_350 k0_t3
  let v3851 : Index := Scalar.indexCast arg15
  let c944_2218 : Index := 944#32
  ![1, 3, v3851.toNat, 944]
def k0_off1177 (k0_t3 : Fin k0_t3_loop.trips) : Fin 4 → Nat :=
  let c1_i32_2219 : BitVec 32 := 1#32
  let v3855 : Index := Scalar.indexCast c1_i32_2219
  let c3_i32_2220 : BitVec 32 := 3#32
  let v3856 : Index := Scalar.indexCast c3_i32_2220
  let c0_i32_348 : BitVec 32 := 0#32
  let c1_i32_350 : BitVec 32 := 1#32
  let arg15 : BitVec 32 := Scf.iv c0_i32_348 c1_i32_350 k0_t3
  let v3857 : Index := Scalar.indexCast arg15
  let c960_2221 : Index := 960#32
  ![1, 3, v3857.toNat, 960]
def k0_off1178 (k0_t3 : Fin k0_t3_loop.trips) : Fin 4 → Nat :=
  let c1_i32_2222 : BitVec 32 := 1#32
  let v3861 : Index := Scalar.indexCast c1_i32_2222
  let c3_i32_2223 : BitVec 32 := 3#32
  let v3862 : Index := Scalar.indexCast c3_i32_2223
  let c0_i32_348 : BitVec 32 := 0#32
  let c1_i32_350 : BitVec 32 := 1#32
  let arg15 : BitVec 32 := Scf.iv c0_i32_348 c1_i32_350 k0_t3
  let v3863 : Index := Scalar.indexCast arg15
  let c960_2224 : Index := 960#32
  ![1, 3, v3863.toNat, 960]
def k0_off1179 (k0_t3 : Fin k0_t3_loop.trips) : Fin 4 → Nat :=
  let c1_i32_2225 : BitVec 32 := 1#32
  let v3867 : Index := Scalar.indexCast c1_i32_2225
  let c3_i32_2226 : BitVec 32 := 3#32
  let v3868 : Index := Scalar.indexCast c3_i32_2226
  let c0_i32_348 : BitVec 32 := 0#32
  let c1_i32_350 : BitVec 32 := 1#32
  let arg15 : BitVec 32 := Scf.iv c0_i32_348 c1_i32_350 k0_t3
  let v3869 : Index := Scalar.indexCast arg15
  let c976_2227 : Index := 976#32
  ![1, 3, v3869.toNat, 976]
def k0_off1180 (k0_t3 : Fin k0_t3_loop.trips) : Fin 4 → Nat :=
  let c1_i32_2228 : BitVec 32 := 1#32
  let v3873 : Index := Scalar.indexCast c1_i32_2228
  let c3_i32_2229 : BitVec 32 := 3#32
  let v3874 : Index := Scalar.indexCast c3_i32_2229
  let c0_i32_348 : BitVec 32 := 0#32
  let c1_i32_350 : BitVec 32 := 1#32
  let arg15 : BitVec 32 := Scf.iv c0_i32_348 c1_i32_350 k0_t3
  let v3875 : Index := Scalar.indexCast arg15
  let c976_2230 : Index := 976#32
  ![1, 3, v3875.toNat, 976]
def k0_off1181 (k0_t3 : Fin k0_t3_loop.trips) : Fin 4 → Nat :=
  let c1_i32_2231 : BitVec 32 := 1#32
  let v3879 : Index := Scalar.indexCast c1_i32_2231
  let c3_i32_2232 : BitVec 32 := 3#32
  let v3880 : Index := Scalar.indexCast c3_i32_2232
  let c0_i32_348 : BitVec 32 := 0#32
  let c1_i32_350 : BitVec 32 := 1#32
  let arg15 : BitVec 32 := Scf.iv c0_i32_348 c1_i32_350 k0_t3
  let v3881 : Index := Scalar.indexCast arg15
  let c992_2233 : Index := 992#32
  ![1, 3, v3881.toNat, 992]
def k0_off1182 (k0_t3 : Fin k0_t3_loop.trips) : Fin 4 → Nat :=
  let c1_i32_2234 : BitVec 32 := 1#32
  let v3885 : Index := Scalar.indexCast c1_i32_2234
  let c3_i32_2235 : BitVec 32 := 3#32
  let v3886 : Index := Scalar.indexCast c3_i32_2235
  let c0_i32_348 : BitVec 32 := 0#32
  let c1_i32_350 : BitVec 32 := 1#32
  let arg15 : BitVec 32 := Scf.iv c0_i32_348 c1_i32_350 k0_t3
  let v3887 : Index := Scalar.indexCast arg15
  let c992_2236 : Index := 992#32
  ![1, 3, v3887.toNat, 992]
def k0_off1183 (k0_t3 : Fin k0_t3_loop.trips) : Fin 4 → Nat :=
  let c1_i32_2237 : BitVec 32 := 1#32
  let v3891 : Index := Scalar.indexCast c1_i32_2237
  let c3_i32_2238 : BitVec 32 := 3#32
  let v3892 : Index := Scalar.indexCast c3_i32_2238
  let c0_i32_348 : BitVec 32 := 0#32
  let c1_i32_350 : BitVec 32 := 1#32
  let arg15 : BitVec 32 := Scf.iv c0_i32_348 c1_i32_350 k0_t3
  let v3893 : Index := Scalar.indexCast arg15
  let c1008_2239 : Index := 1008#32
  ![1, 3, v3893.toNat, 1008]
def k0_off1184 (k0_t3 : Fin k0_t3_loop.trips) : Fin 4 → Nat :=
  let c1_i32_2240 : BitVec 32 := 1#32
  let v3897 : Index := Scalar.indexCast c1_i32_2240
  let c3_i32_2241 : BitVec 32 := 3#32
  let v3898 : Index := Scalar.indexCast c3_i32_2241
  let c0_i32_348 : BitVec 32 := 0#32
  let c1_i32_350 : BitVec 32 := 1#32
  let arg15 : BitVec 32 := Scf.iv c0_i32_348 c1_i32_350 k0_t3
  let v3899 : Index := Scalar.indexCast arg15
  let c1008_2242 : Index := 1008#32
  ![1, 3, v3899.toNat, 1008]
def k0_cond5 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c32_i32_436 : BitVec 32 := 32#32
  let v393 : BitVec 1 := Scalar.cmpi .slt v392 c32_i32_436
  let v394 : BitVec 32 := Scalar.extui v393
  let c0_i32_437 : BitVec 32 := 0#32
  let v395 : BitVec 1 := Scalar.cmpi .ne v394 c0_i32_437
  v395

def k0_off1185 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c4_i32_643 : BitVec 32 := 4#32
  let v575 : BitVec 32 := Scalar.muli v392 c4_i32_643
  let v576 : BitVec 32 := Scalar.addi v2 v575
  let c0_i32_647 : BitVec 32 := 0#32
  ![v576.toNat, 0]
def k0_off1186 (i : grid0.Coords) (k0_t1 : Fin k0_t1_loop.trips) : Fin 3 → Nat :=
  let c0_i32_651 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c4_i32_643 : BitVec 32 := 4#32
  let v575 : BitVec 32 := Scalar.muli v392 c4_i32_643
  let v576 : BitVec 32 := Scalar.addi v2 v575
  let c0_i32_656 : BitVec 32 := 0#32
  ![0, v576.toNat, 0]
def k0_off1187 (i : grid0.Coords) (k0_t1 : Fin k0_t1_loop.trips) : Fin 3 → Nat :=
  let c1_i32_660 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c4_i32_643 : BitVec 32 := 4#32
  let v575 : BitVec 32 := Scalar.muli v392 c4_i32_643
  let v576 : BitVec 32 := Scalar.addi v2 v575
  let c0_i32_665 : BitVec 32 := 0#32
  ![1, v576.toNat, 0]
def k0_off1188 (i : grid0.Coords) (k0_t1 : Fin k0_t1_loop.trips) : Fin 3 → Nat :=
  let c2_i32_669 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c4_i32_643 : BitVec 32 := 4#32
  let v575 : BitVec 32 := Scalar.muli v392 c4_i32_643
  let v576 : BitVec 32 := Scalar.addi v2 v575
  let c0_i32_674 : BitVec 32 := 0#32
  ![2, v576.toNat, 0]
def k0_off1189 (i : grid0.Coords) (k0_t1 : Fin k0_t1_loop.trips) : Fin 3 → Nat :=
  let c3_i32_678 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_389 : BitVec 32 := 4#32
  let v351 : BitVec 32 := Scalar.muli arg14 c4_i32_389
  let c2_i32_390 : BitVec 32 := 2#32
  let v352 : BitVec 32 := Scalar.addi v351 c2_i32_390
  let c4_i32_434 : BitVec 32 := 4#32
  let v391 : BitVec 32 := Scalar.addi v352 c4_i32_434
  let c1_i32_435 : BitVec 32 := 1#32
  let v392 : BitVec 32 := Scalar.subi v391 c1_i32_435
  let c4_i32_643 : BitVec 32 := 4#32
  let v575 : BitVec 32 := Scalar.muli v392 c4_i32_643
  let v576 : BitVec 32 := Scalar.addi v2 v575
  let c0_i32_683 : BitVec 32 := 0#32
  ![3, v576.toNat, 0]
@[reducible] def k0_t4_loop : Scf.Loop 32 :=
  let c0_i32_475 : BitVec 32 := 0#32
  let c4_i32_476 : BitVec 32 := 4#32
  let v428 : BitVec 32 := Scalar.addi c0_i32_475 c4_i32_476
  let c1_i32_477 : BitVec 32 := 1#32
  ⟨c0_i32_475, v428, c1_i32_477⟩
def k0_off1190 (k0_t4 : Fin k0_t4_loop.trips) : Fin 3 → Nat :=
  let c2_i32_643 : BitVec 32 := 2#32
  let v575 : Index := Scalar.indexCast c2_i32_643
  let c0_i32_475 : BitVec 32 := 0#32
  let c1_i32_477 : BitVec 32 := 1#32
  let arg15 : BitVec 32 := Scf.iv c0_i32_475 c1_i32_477 k0_t4
  let v576 : Index := Scalar.indexCast arg15
  let c0 : Index := 0#32
  ![2, v576.toNat, 0]
def k0_off1191 (k0_t4 : Fin k0_t4_loop.trips) : Fin 3 → Nat :=
  let c2_i32_644 : BitVec 32 := 2#32
  let v579 : Index := Scalar.indexCast c2_i32_644
  let c0_i32_475 : BitVec 32 := 0#32
  let c1_i32_477 : BitVec 32 := 1#32
  let arg15 : BitVec 32 := Scf.iv c0_i32_475 c1_i32_477 k0_t4
  let v580 : Index := Scalar.indexCast arg15
  let c16 : Index := 16#32
  ![2, v580.toNat, 16]
def k0_off1192 (k0_t4 : Fin k0_t4_loop.trips) : Fin 3 → Nat :=
  let c2_i32_645 : BitVec 32 := 2#32
  let v583 : Index := Scalar.indexCast c2_i32_645
  let c0_i32_475 : BitVec 32 := 0#32
  let c1_i32_477 : BitVec 32 := 1#32
  let arg15 : BitVec 32 := Scf.iv c0_i32_475 c1_i32_477 k0_t4
  let v584 : Index := Scalar.indexCast arg15
  let c32 : Index := 32#32
  ![2, v584.toNat, 32]
def k0_off1193 (k0_t4 : Fin k0_t4_loop.trips) : Fin 3 → Nat :=
  let c2_i32_646 : BitVec 32 := 2#32
  let v587 : Index := Scalar.indexCast c2_i32_646
  let c0_i32_475 : BitVec 32 := 0#32
  let c1_i32_477 : BitVec 32 := 1#32
  let arg15 : BitVec 32 := Scf.iv c0_i32_475 c1_i32_477 k0_t4
  let v588 : Index := Scalar.indexCast arg15
  let c48 : Index := 48#32
  ![2, v588.toNat, 48]
def k0_off1194 (k0_t4 : Fin k0_t4_loop.trips) : Fin 3 → Nat :=
  let c2_i32_647 : BitVec 32 := 2#32
  let v591 : Index := Scalar.indexCast c2_i32_647
  let c0_i32_475 : BitVec 32 := 0#32
  let c1_i32_477 : BitVec 32 := 1#32
  let arg15 : BitVec 32 := Scf.iv c0_i32_475 c1_i32_477 k0_t4
  let v592 : Index := Scalar.indexCast arg15
  let c64 : Index := 64#32
  ![2, v592.toNat, 64]
def k0_off1195 (k0_t4 : Fin k0_t4_loop.trips) : Fin 3 → Nat :=
  let c2_i32_648 : BitVec 32 := 2#32
  let v595 : Index := Scalar.indexCast c2_i32_648
  let c0_i32_475 : BitVec 32 := 0#32
  let c1_i32_477 : BitVec 32 := 1#32
  let arg15 : BitVec 32 := Scf.iv c0_i32_475 c1_i32_477 k0_t4
  let v596 : Index := Scalar.indexCast arg15
  let c80 : Index := 80#32
  ![2, v596.toNat, 80]
def k0_off1196 (k0_t4 : Fin k0_t4_loop.trips) : Fin 3 → Nat :=
  let c2_i32_649 : BitVec 32 := 2#32
  let v599 : Index := Scalar.indexCast c2_i32_649
  let c0_i32_475 : BitVec 32 := 0#32
  let c1_i32_477 : BitVec 32 := 1#32
  let arg15 : BitVec 32 := Scf.iv c0_i32_475 c1_i32_477 k0_t4
  let v600 : Index := Scalar.indexCast arg15
  let c96 : Index := 96#32
  ![2, v600.toNat, 96]
def k0_off1197 (k0_t4 : Fin k0_t4_loop.trips) : Fin 3 → Nat :=
  let c2_i32_650 : BitVec 32 := 2#32
  let v603 : Index := Scalar.indexCast c2_i32_650
  let c0_i32_475 : BitVec 32 := 0#32
  let c1_i32_477 : BitVec 32 := 1#32
  let arg15 : BitVec 32 := Scf.iv c0_i32_475 c1_i32_477 k0_t4
  let v604 : Index := Scalar.indexCast arg15
  let c112 : Index := 112#32
  ![2, v604.toNat, 112]
def k0_off1198 (k0_t4 : Fin k0_t4_loop.trips) : Fin 3 → Nat :=
  let c2_i32_651 : BitVec 32 := 2#32
  let v607 : Index := Scalar.indexCast c2_i32_651
  let c0_i32_475 : BitVec 32 := 0#32
  let c1_i32_477 : BitVec 32 := 1#32
  let arg15 : BitVec 32 := Scf.iv c0_i32_475 c1_i32_477 k0_t4
  let v608 : Index := Scalar.indexCast arg15
  let c128 : Index := 128#32
  ![2, v608.toNat, 128]
def k0_off1199 (k0_t4 : Fin k0_t4_loop.trips) : Fin 3 → Nat :=
  let c2_i32_652 : BitVec 32 := 2#32
  let v611 : Index := Scalar.indexCast c2_i32_652
  let c0_i32_475 : BitVec 32 := 0#32
  let c1_i32_477 : BitVec 32 := 1#32
  let arg15 : BitVec 32 := Scf.iv c0_i32_475 c1_i32_477 k0_t4
  let v612 : Index := Scalar.indexCast arg15
  let c144 : Index := 144#32
  ![2, v612.toNat, 144]
def k0_off1200 (k0_t4 : Fin k0_t4_loop.trips) : Fin 3 → Nat :=
  let c2_i32_653 : BitVec 32 := 2#32
  let v615 : Index := Scalar.indexCast c2_i32_653
  let c0_i32_475 : BitVec 32 := 0#32
  let c1_i32_477 : BitVec 32 := 1#32
  let arg15 : BitVec 32 := Scf.iv c0_i32_475 c1_i32_477 k0_t4
  let v616 : Index := Scalar.indexCast arg15
  let c160 : Index := 160#32
  ![2, v616.toNat, 160]
def k0_off1201 (k0_t4 : Fin k0_t4_loop.trips) : Fin 3 → Nat :=
  let c2_i32_654 : BitVec 32 := 2#32
  let v619 : Index := Scalar.indexCast c2_i32_654
  let c0_i32_475 : BitVec 32 := 0#32
  let c1_i32_477 : BitVec 32 := 1#32
  let arg15 : BitVec 32 := Scf.iv c0_i32_475 c1_i32_477 k0_t4
  let v620 : Index := Scalar.indexCast arg15
  let c176 : Index := 176#32
  ![2, v620.toNat, 176]
def k0_off1202 (k0_t4 : Fin k0_t4_loop.trips) : Fin 3 → Nat :=
  let c2_i32_655 : BitVec 32 := 2#32
  let v623 : Index := Scalar.indexCast c2_i32_655
  let c0_i32_475 : BitVec 32 := 0#32
  let c1_i32_477 : BitVec 32 := 1#32
  let arg15 : BitVec 32 := Scf.iv c0_i32_475 c1_i32_477 k0_t4
  let v624 : Index := Scalar.indexCast arg15
  let c192 : Index := 192#32
  ![2, v624.toNat, 192]
def k0_off1203 (k0_t4 : Fin k0_t4_loop.trips) : Fin 3 → Nat :=
  let c2_i32_656 : BitVec 32 := 2#32
  let v627 : Index := Scalar.indexCast c2_i32_656
  let c0_i32_475 : BitVec 32 := 0#32
  let c1_i32_477 : BitVec 32 := 1#32
  let arg15 : BitVec 32 := Scf.iv c0_i32_475 c1_i32_477 k0_t4
  let v628 : Index := Scalar.indexCast arg15
  let c208 : Index := 208#32
  ![2, v628.toNat, 208]
def k0_off1204 (k0_t4 : Fin k0_t4_loop.trips) : Fin 3 → Nat :=
  let c2_i32_657 : BitVec 32 := 2#32
  let v631 : Index := Scalar.indexCast c2_i32_657
  let c0_i32_475 : BitVec 32 := 0#32
  let c1_i32_477 : BitVec 32 := 1#32
  let arg15 : BitVec 32 := Scf.iv c0_i32_475 c1_i32_477 k0_t4
  let v632 : Index := Scalar.indexCast arg15
  let c224 : Index := 224#32
  ![2, v632.toNat, 224]
def k0_off1205 (k0_t4 : Fin k0_t4_loop.trips) : Fin 3 → Nat :=
  let c2_i32_658 : BitVec 32 := 2#32
  let v635 : Index := Scalar.indexCast c2_i32_658
  let c0_i32_475 : BitVec 32 := 0#32
  let c1_i32_477 : BitVec 32 := 1#32
  let arg15 : BitVec 32 := Scf.iv c0_i32_475 c1_i32_477 k0_t4
  let v636 : Index := Scalar.indexCast arg15
  let c240 : Index := 240#32
  ![2, v636.toNat, 240]
def k0_off1206 (k0_t4 : Fin k0_t4_loop.trips) : Fin 3 → Nat :=
  let c2_i32_659 : BitVec 32 := 2#32
  let v639 : Index := Scalar.indexCast c2_i32_659
  let c0_i32_475 : BitVec 32 := 0#32
  let c1_i32_477 : BitVec 32 := 1#32
  let arg15 : BitVec 32 := Scf.iv c0_i32_475 c1_i32_477 k0_t4
  let v640 : Index := Scalar.indexCast arg15
  let c256 : Index := 256#32
  ![2, v640.toNat, 256]
def k0_off1207 (k0_t4 : Fin k0_t4_loop.trips) : Fin 3 → Nat :=
  let c2_i32_660 : BitVec 32 := 2#32
  let v643 : Index := Scalar.indexCast c2_i32_660
  let c0_i32_475 : BitVec 32 := 0#32
  let c1_i32_477 : BitVec 32 := 1#32
  let arg15 : BitVec 32 := Scf.iv c0_i32_475 c1_i32_477 k0_t4
  let v644 : Index := Scalar.indexCast arg15
  let c272 : Index := 272#32
  ![2, v644.toNat, 272]
def k0_off1208 (k0_t4 : Fin k0_t4_loop.trips) : Fin 3 → Nat :=
  let c2_i32_661 : BitVec 32 := 2#32
  let v647 : Index := Scalar.indexCast c2_i32_661
  let c0_i32_475 : BitVec 32 := 0#32
  let c1_i32_477 : BitVec 32 := 1#32
  let arg15 : BitVec 32 := Scf.iv c0_i32_475 c1_i32_477 k0_t4
  let v648 : Index := Scalar.indexCast arg15
  let c288 : Index := 288#32
  ![2, v648.toNat, 288]
def k0_off1209 (k0_t4 : Fin k0_t4_loop.trips) : Fin 3 → Nat :=
  let c2_i32_662 : BitVec 32 := 2#32
  let v651 : Index := Scalar.indexCast c2_i32_662
  let c0_i32_475 : BitVec 32 := 0#32
  let c1_i32_477 : BitVec 32 := 1#32
  let arg15 : BitVec 32 := Scf.iv c0_i32_475 c1_i32_477 k0_t4
  let v652 : Index := Scalar.indexCast arg15
  let c304 : Index := 304#32
  ![2, v652.toNat, 304]
def k0_off1210 (k0_t4 : Fin k0_t4_loop.trips) : Fin 3 → Nat :=
  let c2_i32_663 : BitVec 32 := 2#32
  let v655 : Index := Scalar.indexCast c2_i32_663
  let c0_i32_475 : BitVec 32 := 0#32
  let c1_i32_477 : BitVec 32 := 1#32
  let arg15 : BitVec 32 := Scf.iv c0_i32_475 c1_i32_477 k0_t4
  let v656 : Index := Scalar.indexCast arg15
  let c320 : Index := 320#32
  ![2, v656.toNat, 320]
def k0_off1211 (k0_t4 : Fin k0_t4_loop.trips) : Fin 3 → Nat :=
  let c2_i32_664 : BitVec 32 := 2#32
  let v659 : Index := Scalar.indexCast c2_i32_664
  let c0_i32_475 : BitVec 32 := 0#32
  let c1_i32_477 : BitVec 32 := 1#32
  let arg15 : BitVec 32 := Scf.iv c0_i32_475 c1_i32_477 k0_t4
  let v660 : Index := Scalar.indexCast arg15
  let c336 : Index := 336#32
  ![2, v660.toNat, 336]
def k0_off1212 (k0_t4 : Fin k0_t4_loop.trips) : Fin 3 → Nat :=
  let c2_i32_665 : BitVec 32 := 2#32
  let v663 : Index := Scalar.indexCast c2_i32_665
  let c0_i32_475 : BitVec 32 := 0#32
  let c1_i32_477 : BitVec 32 := 1#32
  let arg15 : BitVec 32 := Scf.iv c0_i32_475 c1_i32_477 k0_t4
  let v664 : Index := Scalar.indexCast arg15
  let c352 : Index := 352#32
  ![2, v664.toNat, 352]
def k0_off1213 (k0_t4 : Fin k0_t4_loop.trips) : Fin 3 → Nat :=
  let c2_i32_666 : BitVec 32 := 2#32
  let v667 : Index := Scalar.indexCast c2_i32_666
  let c0_i32_475 : BitVec 32 := 0#32
  let c1_i32_477 : BitVec 32 := 1#32
  let arg15 : BitVec 32 := Scf.iv c0_i32_475 c1_i32_477 k0_t4
  let v668 : Index := Scalar.indexCast arg15
  let c368 : Index := 368#32
  ![2, v668.toNat, 368]
def k0_off1214 (k0_t4 : Fin k0_t4_loop.trips) : Fin 3 → Nat :=
  let c2_i32_667 : BitVec 32 := 2#32
  let v671 : Index := Scalar.indexCast c2_i32_667
  let c0_i32_475 : BitVec 32 := 0#32
  let c1_i32_477 : BitVec 32 := 1#32
  let arg15 : BitVec 32 := Scf.iv c0_i32_475 c1_i32_477 k0_t4
  let v672 : Index := Scalar.indexCast arg15
  let c384 : Index := 384#32
  ![2, v672.toNat, 384]
def k0_off1215 (k0_t4 : Fin k0_t4_loop.trips) : Fin 3 → Nat :=
  let c2_i32_668 : BitVec 32 := 2#32
  let v675 : Index := Scalar.indexCast c2_i32_668
  let c0_i32_475 : BitVec 32 := 0#32
  let c1_i32_477 : BitVec 32 := 1#32
  let arg15 : BitVec 32 := Scf.iv c0_i32_475 c1_i32_477 k0_t4
  let v676 : Index := Scalar.indexCast arg15
  let c400 : Index := 400#32
  ![2, v676.toNat, 400]
def k0_off1216 (k0_t4 : Fin k0_t4_loop.trips) : Fin 3 → Nat :=
  let c2_i32_669 : BitVec 32 := 2#32
  let v679 : Index := Scalar.indexCast c2_i32_669
  let c0_i32_475 : BitVec 32 := 0#32
  let c1_i32_477 : BitVec 32 := 1#32
  let arg15 : BitVec 32 := Scf.iv c0_i32_475 c1_i32_477 k0_t4
  let v680 : Index := Scalar.indexCast arg15
  let c416 : Index := 416#32
  ![2, v680.toNat, 416]
def k0_off1217 (k0_t4 : Fin k0_t4_loop.trips) : Fin 3 → Nat :=
  let c2_i32_670 : BitVec 32 := 2#32
  let v683 : Index := Scalar.indexCast c2_i32_670
  let c0_i32_475 : BitVec 32 := 0#32
  let c1_i32_477 : BitVec 32 := 1#32
  let arg15 : BitVec 32 := Scf.iv c0_i32_475 c1_i32_477 k0_t4
  let v684 : Index := Scalar.indexCast arg15
  let c432 : Index := 432#32
  ![2, v684.toNat, 432]
def k0_off1218 (k0_t4 : Fin k0_t4_loop.trips) : Fin 3 → Nat :=
  let c2_i32_671 : BitVec 32 := 2#32
  let v687 : Index := Scalar.indexCast c2_i32_671
  let c0_i32_475 : BitVec 32 := 0#32
  let c1_i32_477 : BitVec 32 := 1#32
  let arg15 : BitVec 32 := Scf.iv c0_i32_475 c1_i32_477 k0_t4
  let v688 : Index := Scalar.indexCast arg15
  let c448 : Index := 448#32
  ![2, v688.toNat, 448]
def k0_off1219 (k0_t4 : Fin k0_t4_loop.trips) : Fin 3 → Nat :=
  let c2_i32_672 : BitVec 32 := 2#32
  let v691 : Index := Scalar.indexCast c2_i32_672
  let c0_i32_475 : BitVec 32 := 0#32
  let c1_i32_477 : BitVec 32 := 1#32
  let arg15 : BitVec 32 := Scf.iv c0_i32_475 c1_i32_477 k0_t4
  let v692 : Index := Scalar.indexCast arg15
  let c464 : Index := 464#32
  ![2, v692.toNat, 464]
def k0_off1220 (k0_t4 : Fin k0_t4_loop.trips) : Fin 3 → Nat :=
  let c2_i32_673 : BitVec 32 := 2#32
  let v695 : Index := Scalar.indexCast c2_i32_673
  let c0_i32_475 : BitVec 32 := 0#32
  let c1_i32_477 : BitVec 32 := 1#32
  let arg15 : BitVec 32 := Scf.iv c0_i32_475 c1_i32_477 k0_t4
  let v696 : Index := Scalar.indexCast arg15
  let c480 : Index := 480#32
  ![2, v696.toNat, 480]
def k0_off1221 (k0_t4 : Fin k0_t4_loop.trips) : Fin 3 → Nat :=
  let c2_i32_674 : BitVec 32 := 2#32
  let v699 : Index := Scalar.indexCast c2_i32_674
  let c0_i32_475 : BitVec 32 := 0#32
  let c1_i32_477 : BitVec 32 := 1#32
  let arg15 : BitVec 32 := Scf.iv c0_i32_475 c1_i32_477 k0_t4
  let v700 : Index := Scalar.indexCast arg15
  let c496 : Index := 496#32
  ![2, v700.toNat, 496]
def k0_off1222 (k0_t4 : Fin k0_t4_loop.trips) : Fin 4 → Nat :=
  let c2_i32_675 : BitVec 32 := 2#32
  let v703 : Index := Scalar.indexCast c2_i32_675
  let c0_i32_676 : BitVec 32 := 0#32
  let v704 : Index := Scalar.indexCast c0_i32_676
  let c0_i32_475 : BitVec 32 := 0#32
  let c1_i32_477 : BitVec 32 := 1#32
  let arg15 : BitVec 32 := Scf.iv c0_i32_475 c1_i32_477 k0_t4
  let v705 : Index := Scalar.indexCast arg15
  let c0_677 : Index := 0#32
  ![2, 0, v705.toNat, 0]
def k0_off1223 (k0_t4 : Fin k0_t4_loop.trips) : Fin 4 → Nat :=
  let c0_i32_678 : BitVec 32 := 0#32
  let v709 : Index := Scalar.indexCast c0_i32_678
  let c0_i32_679 : BitVec 32 := 0#32
  let v710 : Index := Scalar.indexCast c0_i32_679
  let c0_i32_475 : BitVec 32 := 0#32
  let c1_i32_477 : BitVec 32 := 1#32
  let arg15 : BitVec 32 := Scf.iv c0_i32_475 c1_i32_477 k0_t4
  let v711 : Index := Scalar.indexCast arg15
  let c0_680 : Index := 0#32
  ![0, 0, v711.toNat, 0]
def k0_off1224 (k0_t4 : Fin k0_t4_loop.trips) : Fin 4 → Nat :=
  let c2_i32_681 : BitVec 32 := 2#32
  let v715 : Index := Scalar.indexCast c2_i32_681
  let c0_i32_682 : BitVec 32 := 0#32
  let v716 : Index := Scalar.indexCast c0_i32_682
  let c0_i32_475 : BitVec 32 := 0#32
  let c1_i32_477 : BitVec 32 := 1#32
  let arg15 : BitVec 32 := Scf.iv c0_i32_475 c1_i32_477 k0_t4
  let v717 : Index := Scalar.indexCast arg15
  let c16_683 : Index := 16#32
  ![2, 0, v717.toNat, 16]
def k0_off1225 (k0_t4 : Fin k0_t4_loop.trips) : Fin 4 → Nat :=
  let c0_i32_684 : BitVec 32 := 0#32
  let v721 : Index := Scalar.indexCast c0_i32_684
  let c0_i32_685 : BitVec 32 := 0#32
  let v722 : Index := Scalar.indexCast c0_i32_685
  let c0_i32_475 : BitVec 32 := 0#32
  let c1_i32_477 : BitVec 32 := 1#32
  let arg15 : BitVec 32 := Scf.iv c0_i32_475 c1_i32_477 k0_t4
  let v723 : Index := Scalar.indexCast arg15
  let c16_686 : Index := 16#32
  ![0, 0, v723.toNat, 16]
def k0_off1226 (k0_t4 : Fin k0_t4_loop.trips) : Fin 4 → Nat :=
  let c2_i32_687 : BitVec 32 := 2#32
  let v727 : Index := Scalar.indexCast c2_i32_687
  let c0_i32_688 : BitVec 32 := 0#32
  let v728 : Index := Scalar.indexCast c0_i32_688
  let c0_i32_475 : BitVec 32 := 0#32
  let c1_i32_477 : BitVec 32 := 1#32
  let arg15 : BitVec 32 := Scf.iv c0_i32_475 c1_i32_477 k0_t4
  let v729 : Index := Scalar.indexCast arg15
  let c32_689 : Index := 32#32
  ![2, 0, v729.toNat, 32]
def k0_off1227 (k0_t4 : Fin k0_t4_loop.trips) : Fin 4 → Nat :=
  let c0_i32_690 : BitVec 32 := 0#32
  let v733 : Index := Scalar.indexCast c0_i32_690
  let c0_i32_691 : BitVec 32 := 0#32
  let v734 : Index := Scalar.indexCast c0_i32_691
  let c0_i32_475 : BitVec 32 := 0#32
  let c1_i32_477 : BitVec 32 := 1#32
  let arg15 : BitVec 32 := Scf.iv c0_i32_475 c1_i32_477 k0_t4
  let v735 : Index := Scalar.indexCast arg15
  let c32_692 : Index := 32#32
  ![0, 0, v735.toNat, 32]
def k0_off1228 (k0_t4 : Fin k0_t4_loop.trips) : Fin 4 → Nat :=
  let c2_i32_693 : BitVec 32 := 2#32
  let v739 : Index := Scalar.indexCast c2_i32_693
  let c0_i32_694 : BitVec 32 := 0#32
  let v740 : Index := Scalar.indexCast c0_i32_694
  let c0_i32_475 : BitVec 32 := 0#32
  let c1_i32_477 : BitVec 32 := 1#32
  let arg15 : BitVec 32 := Scf.iv c0_i32_475 c1_i32_477 k0_t4
  let v741 : Index := Scalar.indexCast arg15
  let c48_695 : Index := 48#32
  ![2, 0, v741.toNat, 48]
def k0_off1229 (k0_t4 : Fin k0_t4_loop.trips) : Fin 4 → Nat :=
  let c0_i32_696 : BitVec 32 := 0#32
  let v745 : Index := Scalar.indexCast c0_i32_696
  let c0_i32_697 : BitVec 32 := 0#32
  let v746 : Index := Scalar.indexCast c0_i32_697
  let c0_i32_475 : BitVec 32 := 0#32
  let c1_i32_477 : BitVec 32 := 1#32
  let arg15 : BitVec 32 := Scf.iv c0_i32_475 c1_i32_477 k0_t4
  let v747 : Index := Scalar.indexCast arg15
  let c48_698 : Index := 48#32
  ![0, 0, v747.toNat, 48]
def k0_off1230 (k0_t4 : Fin k0_t4_loop.trips) : Fin 4 → Nat :=
  let c2_i32_699 : BitVec 32 := 2#32
  let v751 : Index := Scalar.indexCast c2_i32_699
  let c0_i32_700 : BitVec 32 := 0#32
  let v752 : Index := Scalar.indexCast c0_i32_700
  let c0_i32_475 : BitVec 32 := 0#32
  let c1_i32_477 : BitVec 32 := 1#32
  let arg15 : BitVec 32 := Scf.iv c0_i32_475 c1_i32_477 k0_t4
  let v753 : Index := Scalar.indexCast arg15
  let c64_701 : Index := 64#32
  ![2, 0, v753.toNat, 64]
def k0_off1231 (k0_t4 : Fin k0_t4_loop.trips) : Fin 4 → Nat :=
  let c0_i32_702 : BitVec 32 := 0#32
  let v757 : Index := Scalar.indexCast c0_i32_702
  let c0_i32_703 : BitVec 32 := 0#32
  let v758 : Index := Scalar.indexCast c0_i32_703
  let c0_i32_475 : BitVec 32 := 0#32
  let c1_i32_477 : BitVec 32 := 1#32
  let arg15 : BitVec 32 := Scf.iv c0_i32_475 c1_i32_477 k0_t4
  let v759 : Index := Scalar.indexCast arg15
  let c64_704 : Index := 64#32
  ![0, 0, v759.toNat, 64]
def k0_off1232 (k0_t4 : Fin k0_t4_loop.trips) : Fin 4 → Nat :=
  let c2_i32_705 : BitVec 32 := 2#32
  let v763 : Index := Scalar.indexCast c2_i32_705
  let c0_i32_706 : BitVec 32 := 0#32
  let v764 : Index := Scalar.indexCast c0_i32_706
  let c0_i32_475 : BitVec 32 := 0#32
  let c1_i32_477 : BitVec 32 := 1#32
  let arg15 : BitVec 32 := Scf.iv c0_i32_475 c1_i32_477 k0_t4
  let v765 : Index := Scalar.indexCast arg15
  let c80_707 : Index := 80#32
  ![2, 0, v765.toNat, 80]
def k0_off1233 (k0_t4 : Fin k0_t4_loop.trips) : Fin 4 → Nat :=
  let c0_i32_708 : BitVec 32 := 0#32
  let v769 : Index := Scalar.indexCast c0_i32_708
  let c0_i32_709 : BitVec 32 := 0#32
  let v770 : Index := Scalar.indexCast c0_i32_709
  let c0_i32_475 : BitVec 32 := 0#32
  let c1_i32_477 : BitVec 32 := 1#32
  let arg15 : BitVec 32 := Scf.iv c0_i32_475 c1_i32_477 k0_t4
  let v771 : Index := Scalar.indexCast arg15
  let c80_710 : Index := 80#32
  ![0, 0, v771.toNat, 80]
def k0_off1234 (k0_t4 : Fin k0_t4_loop.trips) : Fin 4 → Nat :=
  let c2_i32_711 : BitVec 32 := 2#32
  let v775 : Index := Scalar.indexCast c2_i32_711
  let c0_i32_712 : BitVec 32 := 0#32
  let v776 : Index := Scalar.indexCast c0_i32_712
  let c0_i32_475 : BitVec 32 := 0#32
  let c1_i32_477 : BitVec 32 := 1#32
  let arg15 : BitVec 32 := Scf.iv c0_i32_475 c1_i32_477 k0_t4
  let v777 : Index := Scalar.indexCast arg15
  let c96_713 : Index := 96#32
  ![2, 0, v777.toNat, 96]
def k0_off1235 (k0_t4 : Fin k0_t4_loop.trips) : Fin 4 → Nat :=
  let c0_i32_714 : BitVec 32 := 0#32
  let v781 : Index := Scalar.indexCast c0_i32_714
  let c0_i32_715 : BitVec 32 := 0#32
  let v782 : Index := Scalar.indexCast c0_i32_715
  let c0_i32_475 : BitVec 32 := 0#32
  let c1_i32_477 : BitVec 32 := 1#32
  let arg15 : BitVec 32 := Scf.iv c0_i32_475 c1_i32_477 k0_t4
  let v783 : Index := Scalar.indexCast arg15
  let c96_716 : Index := 96#32
  ![0, 0, v783.toNat, 96]
def k0_off1236 (k0_t4 : Fin k0_t4_loop.trips) : Fin 4 → Nat :=
  let c2_i32_717 : BitVec 32 := 2#32
  let v787 : Index := Scalar.indexCast c2_i32_717
  let c0_i32_718 : BitVec 32 := 0#32
  let v788 : Index := Scalar.indexCast c0_i32_718
  let c0_i32_475 : BitVec 32 := 0#32
  let c1_i32_477 : BitVec 32 := 1#32
  let arg15 : BitVec 32 := Scf.iv c0_i32_475 c1_i32_477 k0_t4
  let v789 : Index := Scalar.indexCast arg15
  let c112_719 : Index := 112#32
  ![2, 0, v789.toNat, 112]
def k0_off1237 (k0_t4 : Fin k0_t4_loop.trips) : Fin 4 → Nat :=
  let c0_i32_720 : BitVec 32 := 0#32
  let v793 : Index := Scalar.indexCast c0_i32_720
  let c0_i32_721 : BitVec 32 := 0#32
  let v794 : Index := Scalar.indexCast c0_i32_721
  let c0_i32_475 : BitVec 32 := 0#32
  let c1_i32_477 : BitVec 32 := 1#32
  let arg15 : BitVec 32 := Scf.iv c0_i32_475 c1_i32_477 k0_t4
  let v795 : Index := Scalar.indexCast arg15
  let c112_722 : Index := 112#32
  ![0, 0, v795.toNat, 112]
def k0_off1238 (k0_t4 : Fin k0_t4_loop.trips) : Fin 4 → Nat :=
  let c2_i32_723 : BitVec 32 := 2#32
  let v799 : Index := Scalar.indexCast c2_i32_723
  let c0_i32_724 : BitVec 32 := 0#32
  let v800 : Index := Scalar.indexCast c0_i32_724
  let c0_i32_475 : BitVec 32 := 0#32
  let c1_i32_477 : BitVec 32 := 1#32
  let arg15 : BitVec 32 := Scf.iv c0_i32_475 c1_i32_477 k0_t4
  let v801 : Index := Scalar.indexCast arg15
  let c128_725 : Index := 128#32
  ![2, 0, v801.toNat, 128]
def k0_off1239 (k0_t4 : Fin k0_t4_loop.trips) : Fin 4 → Nat :=
  let c0_i32_726 : BitVec 32 := 0#32
  let v805 : Index := Scalar.indexCast c0_i32_726
  let c0_i32_727 : BitVec 32 := 0#32
  let v806 : Index := Scalar.indexCast c0_i32_727
  let c0_i32_475 : BitVec 32 := 0#32
  let c1_i32_477 : BitVec 32 := 1#32
  let arg15 : BitVec 32 := Scf.iv c0_i32_475 c1_i32_477 k0_t4
  let v807 : Index := Scalar.indexCast arg15
  let c128_728 : Index := 128#32
  ![0, 0, v807.toNat, 128]
def k0_off1240 (k0_t4 : Fin k0_t4_loop.trips) : Fin 4 → Nat :=
  let c2_i32_729 : BitVec 32 := 2#32
  let v811 : Index := Scalar.indexCast c2_i32_729
  let c0_i32_730 : BitVec 32 := 0#32
  let v812 : Index := Scalar.indexCast c0_i32_730
  let c0_i32_475 : BitVec 32 := 0#32
  let c1_i32_477 : BitVec 32 := 1#32
  let arg15 : BitVec 32 := Scf.iv c0_i32_475 c1_i32_477 k0_t4
  let v813 : Index := Scalar.indexCast arg15
  let c144_731 : Index := 144#32
  ![2, 0, v813.toNat, 144]
def k0_off1241 (k0_t4 : Fin k0_t4_loop.trips) : Fin 4 → Nat :=
  let c0_i32_732 : BitVec 32 := 0#32
  let v817 : Index := Scalar.indexCast c0_i32_732
  let c0_i32_733 : BitVec 32 := 0#32
  let v818 : Index := Scalar.indexCast c0_i32_733
  let c0_i32_475 : BitVec 32 := 0#32
  let c1_i32_477 : BitVec 32 := 1#32
  let arg15 : BitVec 32 := Scf.iv c0_i32_475 c1_i32_477 k0_t4
  let v819 : Index := Scalar.indexCast arg15
  let c144_734 : Index := 144#32
  ![0, 0, v819.toNat, 144]
def k0_off1242 (k0_t4 : Fin k0_t4_loop.trips) : Fin 4 → Nat :=
  let c2_i32_735 : BitVec 32 := 2#32
  let v823 : Index := Scalar.indexCast c2_i32_735
  let c0_i32_736 : BitVec 32 := 0#32
  let v824 : Index := Scalar.indexCast c0_i32_736
  let c0_i32_475 : BitVec 32 := 0#32
  let c1_i32_477 : BitVec 32 := 1#32
  let arg15 : BitVec 32 := Scf.iv c0_i32_475 c1_i32_477 k0_t4
  let v825 : Index := Scalar.indexCast arg15
  let c160_737 : Index := 160#32
  ![2, 0, v825.toNat, 160]
def k0_off1243 (k0_t4 : Fin k0_t4_loop.trips) : Fin 4 → Nat :=
  let c0_i32_738 : BitVec 32 := 0#32
  let v829 : Index := Scalar.indexCast c0_i32_738
  let c0_i32_739 : BitVec 32 := 0#32
  let v830 : Index := Scalar.indexCast c0_i32_739
  let c0_i32_475 : BitVec 32 := 0#32
  let c1_i32_477 : BitVec 32 := 1#32
  let arg15 : BitVec 32 := Scf.iv c0_i32_475 c1_i32_477 k0_t4
  let v831 : Index := Scalar.indexCast arg15
  let c160_740 : Index := 160#32
  ![0, 0, v831.toNat, 160]
def k0_off1244 (k0_t4 : Fin k0_t4_loop.trips) : Fin 4 → Nat :=
  let c2_i32_741 : BitVec 32 := 2#32
  let v835 : Index := Scalar.indexCast c2_i32_741
  let c0_i32_742 : BitVec 32 := 0#32
  let v836 : Index := Scalar.indexCast c0_i32_742
  let c0_i32_475 : BitVec 32 := 0#32
  let c1_i32_477 : BitVec 32 := 1#32
  let arg15 : BitVec 32 := Scf.iv c0_i32_475 c1_i32_477 k0_t4
  let v837 : Index := Scalar.indexCast arg15
  let c176_743 : Index := 176#32
  ![2, 0, v837.toNat, 176]
def k0_off1245 (k0_t4 : Fin k0_t4_loop.trips) : Fin 4 → Nat :=
  let c0_i32_744 : BitVec 32 := 0#32
  let v841 : Index := Scalar.indexCast c0_i32_744
  let c0_i32_745 : BitVec 32 := 0#32
  let v842 : Index := Scalar.indexCast c0_i32_745
  let c0_i32_475 : BitVec 32 := 0#32
  let c1_i32_477 : BitVec 32 := 1#32
  let arg15 : BitVec 32 := Scf.iv c0_i32_475 c1_i32_477 k0_t4
  let v843 : Index := Scalar.indexCast arg15
  let c176_746 : Index := 176#32
  ![0, 0, v843.toNat, 176]
def k0_off1246 (k0_t4 : Fin k0_t4_loop.trips) : Fin 4 → Nat :=
  let c2_i32_747 : BitVec 32 := 2#32
  let v847 : Index := Scalar.indexCast c2_i32_747
  let c0_i32_748 : BitVec 32 := 0#32
  let v848 : Index := Scalar.indexCast c0_i32_748
  let c0_i32_475 : BitVec 32 := 0#32
  let c1_i32_477 : BitVec 32 := 1#32
  let arg15 : BitVec 32 := Scf.iv c0_i32_475 c1_i32_477 k0_t4
  let v849 : Index := Scalar.indexCast arg15
  let c192_749 : Index := 192#32
  ![2, 0, v849.toNat, 192]
def k0_off1247 (k0_t4 : Fin k0_t4_loop.trips) : Fin 4 → Nat :=
  let c0_i32_750 : BitVec 32 := 0#32
  let v853 : Index := Scalar.indexCast c0_i32_750
  let c0_i32_751 : BitVec 32 := 0#32
  let v854 : Index := Scalar.indexCast c0_i32_751
  let c0_i32_475 : BitVec 32 := 0#32
  let c1_i32_477 : BitVec 32 := 1#32
  let arg15 : BitVec 32 := Scf.iv c0_i32_475 c1_i32_477 k0_t4
  let v855 : Index := Scalar.indexCast arg15
  let c192_752 : Index := 192#32
  ![0, 0, v855.toNat, 192]
def k0_off1248 (k0_t4 : Fin k0_t4_loop.trips) : Fin 4 → Nat :=
  let c2_i32_753 : BitVec 32 := 2#32
  let v859 : Index := Scalar.indexCast c2_i32_753
  let c0_i32_754 : BitVec 32 := 0#32
  let v860 : Index := Scalar.indexCast c0_i32_754
  let c0_i32_475 : BitVec 32 := 0#32
  let c1_i32_477 : BitVec 32 := 1#32
  let arg15 : BitVec 32 := Scf.iv c0_i32_475 c1_i32_477 k0_t4
  let v861 : Index := Scalar.indexCast arg15
  let c208_755 : Index := 208#32
  ![2, 0, v861.toNat, 208]
def k0_off1249 (k0_t4 : Fin k0_t4_loop.trips) : Fin 4 → Nat :=
  let c0_i32_756 : BitVec 32 := 0#32
  let v865 : Index := Scalar.indexCast c0_i32_756
  let c0_i32_757 : BitVec 32 := 0#32
  let v866 : Index := Scalar.indexCast c0_i32_757
  let c0_i32_475 : BitVec 32 := 0#32
  let c1_i32_477 : BitVec 32 := 1#32
  let arg15 : BitVec 32 := Scf.iv c0_i32_475 c1_i32_477 k0_t4
  let v867 : Index := Scalar.indexCast arg15
  let c208_758 : Index := 208#32
  ![0, 0, v867.toNat, 208]
def k0_off1250 (k0_t4 : Fin k0_t4_loop.trips) : Fin 4 → Nat :=
  let c2_i32_759 : BitVec 32 := 2#32
  let v871 : Index := Scalar.indexCast c2_i32_759
  let c0_i32_760 : BitVec 32 := 0#32
  let v872 : Index := Scalar.indexCast c0_i32_760
  let c0_i32_475 : BitVec 32 := 0#32
  let c1_i32_477 : BitVec 32 := 1#32
  let arg15 : BitVec 32 := Scf.iv c0_i32_475 c1_i32_477 k0_t4
  let v873 : Index := Scalar.indexCast arg15
  let c224_761 : Index := 224#32
  ![2, 0, v873.toNat, 224]
def k0_off1251 (k0_t4 : Fin k0_t4_loop.trips) : Fin 4 → Nat :=
  let c0_i32_762 : BitVec 32 := 0#32
  let v877 : Index := Scalar.indexCast c0_i32_762
  let c0_i32_763 : BitVec 32 := 0#32
  let v878 : Index := Scalar.indexCast c0_i32_763
  let c0_i32_475 : BitVec 32 := 0#32
  let c1_i32_477 : BitVec 32 := 1#32
  let arg15 : BitVec 32 := Scf.iv c0_i32_475 c1_i32_477 k0_t4
  let v879 : Index := Scalar.indexCast arg15
  let c224_764 : Index := 224#32
  ![0, 0, v879.toNat, 224]
def k0_off1252 (k0_t4 : Fin k0_t4_loop.trips) : Fin 4 → Nat :=
  let c2_i32_765 : BitVec 32 := 2#32
  let v883 : Index := Scalar.indexCast c2_i32_765
  let c0_i32_766 : BitVec 32 := 0#32
  let v884 : Index := Scalar.indexCast c0_i32_766
  let c0_i32_475 : BitVec 32 := 0#32
  let c1_i32_477 : BitVec 32 := 1#32
  let arg15 : BitVec 32 := Scf.iv c0_i32_475 c1_i32_477 k0_t4
  let v885 : Index := Scalar.indexCast arg15
  let c240_767 : Index := 240#32
  ![2, 0, v885.toNat, 240]
def k0_off1253 (k0_t4 : Fin k0_t4_loop.trips) : Fin 4 → Nat :=
  let c0_i32_768 : BitVec 32 := 0#32
  let v889 : Index := Scalar.indexCast c0_i32_768
  let c0_i32_769 : BitVec 32 := 0#32
  let v890 : Index := Scalar.indexCast c0_i32_769
  let c0_i32_475 : BitVec 32 := 0#32
  let c1_i32_477 : BitVec 32 := 1#32
  let arg15 : BitVec 32 := Scf.iv c0_i32_475 c1_i32_477 k0_t4
  let v891 : Index := Scalar.indexCast arg15
  let c240_770 : Index := 240#32
  ![0, 0, v891.toNat, 240]
def k0_off1254 (k0_t4 : Fin k0_t4_loop.trips) : Fin 4 → Nat :=
  let c2_i32_771 : BitVec 32 := 2#32
  let v895 : Index := Scalar.indexCast c2_i32_771
  let c0_i32_772 : BitVec 32 := 0#32
  let v896 : Index := Scalar.indexCast c0_i32_772
  let c0_i32_475 : BitVec 32 := 0#32
  let c1_i32_477 : BitVec 32 := 1#32
  let arg15 : BitVec 32 := Scf.iv c0_i32_475 c1_i32_477 k0_t4
  let v897 : Index := Scalar.indexCast arg15
  let c256_773 : Index := 256#32
  ![2, 0, v897.toNat, 256]
def k0_off1255 (k0_t4 : Fin k0_t4_loop.trips) : Fin 4 → Nat :=
  let c0_i32_774 : BitVec 32 := 0#32
  let v901 : Index := Scalar.indexCast c0_i32_774
  let c0_i32_775 : BitVec 32 := 0#32
  let v902 : Index := Scalar.indexCast c0_i32_775
  let c0_i32_475 : BitVec 32 := 0#32
  let c1_i32_477 : BitVec 32 := 1#32
  let arg15 : BitVec 32 := Scf.iv c0_i32_475 c1_i32_477 k0_t4
  let v903 : Index := Scalar.indexCast arg15
  let c256_776 : Index := 256#32
  ![0, 0, v903.toNat, 256]
def k0_off1256 (k0_t4 : Fin k0_t4_loop.trips) : Fin 4 → Nat :=
  let c2_i32_777 : BitVec 32 := 2#32
  let v907 : Index := Scalar.indexCast c2_i32_777
  let c0_i32_778 : BitVec 32 := 0#32
  let v908 : Index := Scalar.indexCast c0_i32_778
  let c0_i32_475 : BitVec 32 := 0#32
  let c1_i32_477 : BitVec 32 := 1#32
  let arg15 : BitVec 32 := Scf.iv c0_i32_475 c1_i32_477 k0_t4
  let v909 : Index := Scalar.indexCast arg15
  let c272_779 : Index := 272#32
  ![2, 0, v909.toNat, 272]
def k0_off1257 (k0_t4 : Fin k0_t4_loop.trips) : Fin 4 → Nat :=
  let c0_i32_780 : BitVec 32 := 0#32
  let v913 : Index := Scalar.indexCast c0_i32_780
  let c0_i32_781 : BitVec 32 := 0#32
  let v914 : Index := Scalar.indexCast c0_i32_781
  let c0_i32_475 : BitVec 32 := 0#32
  let c1_i32_477 : BitVec 32 := 1#32
  let arg15 : BitVec 32 := Scf.iv c0_i32_475 c1_i32_477 k0_t4
  let v915 : Index := Scalar.indexCast arg15
  let c272_782 : Index := 272#32
  ![0, 0, v915.toNat, 272]
def k0_off1258 (k0_t4 : Fin k0_t4_loop.trips) : Fin 4 → Nat :=
  let c2_i32_783 : BitVec 32 := 2#32
  let v919 : Index := Scalar.indexCast c2_i32_783
  let c0_i32_784 : BitVec 32 := 0#32
  let v920 : Index := Scalar.indexCast c0_i32_784
  let c0_i32_475 : BitVec 32 := 0#32
  let c1_i32_477 : BitVec 32 := 1#32
  let arg15 : BitVec 32 := Scf.iv c0_i32_475 c1_i32_477 k0_t4
  let v921 : Index := Scalar.indexCast arg15
  let c288_785 : Index := 288#32
  ![2, 0, v921.toNat, 288]
def k0_off1259 (k0_t4 : Fin k0_t4_loop.trips) : Fin 4 → Nat :=
  let c0_i32_786 : BitVec 32 := 0#32
  let v925 : Index := Scalar.indexCast c0_i32_786
  let c0_i32_787 : BitVec 32 := 0#32
  let v926 : Index := Scalar.indexCast c0_i32_787
  let c0_i32_475 : BitVec 32 := 0#32
  let c1_i32_477 : BitVec 32 := 1#32
  let arg15 : BitVec 32 := Scf.iv c0_i32_475 c1_i32_477 k0_t4
  let v927 : Index := Scalar.indexCast arg15
  let c288_788 : Index := 288#32
  ![0, 0, v927.toNat, 288]
def k0_off1260 (k0_t4 : Fin k0_t4_loop.trips) : Fin 4 → Nat :=
  let c2_i32_789 : BitVec 32 := 2#32
  let v931 : Index := Scalar.indexCast c2_i32_789
  let c0_i32_790 : BitVec 32 := 0#32
  let v932 : Index := Scalar.indexCast c0_i32_790
  let c0_i32_475 : BitVec 32 := 0#32
  let c1_i32_477 : BitVec 32 := 1#32
  let arg15 : BitVec 32 := Scf.iv c0_i32_475 c1_i32_477 k0_t4
  let v933 : Index := Scalar.indexCast arg15
  let c304_791 : Index := 304#32
  ![2, 0, v933.toNat, 304]
def k0_off1261 (k0_t4 : Fin k0_t4_loop.trips) : Fin 4 → Nat :=
  let c0_i32_792 : BitVec 32 := 0#32
  let v937 : Index := Scalar.indexCast c0_i32_792
  let c0_i32_793 : BitVec 32 := 0#32
  let v938 : Index := Scalar.indexCast c0_i32_793
  let c0_i32_475 : BitVec 32 := 0#32
  let c1_i32_477 : BitVec 32 := 1#32
  let arg15 : BitVec 32 := Scf.iv c0_i32_475 c1_i32_477 k0_t4
  let v939 : Index := Scalar.indexCast arg15
  let c304_794 : Index := 304#32
  ![0, 0, v939.toNat, 304]
def k0_off1262 (k0_t4 : Fin k0_t4_loop.trips) : Fin 4 → Nat :=
  let c2_i32_795 : BitVec 32 := 2#32
  let v943 : Index := Scalar.indexCast c2_i32_795
  let c0_i32_796 : BitVec 32 := 0#32
  let v944 : Index := Scalar.indexCast c0_i32_796
  let c0_i32_475 : BitVec 32 := 0#32
  let c1_i32_477 : BitVec 32 := 1#32
  let arg15 : BitVec 32 := Scf.iv c0_i32_475 c1_i32_477 k0_t4
  let v945 : Index := Scalar.indexCast arg15
  let c320_797 : Index := 320#32
  ![2, 0, v945.toNat, 320]
def k0_off1263 (k0_t4 : Fin k0_t4_loop.trips) : Fin 4 → Nat :=
  let c0_i32_798 : BitVec 32 := 0#32
  let v949 : Index := Scalar.indexCast c0_i32_798
  let c0_i32_799 : BitVec 32 := 0#32
  let v950 : Index := Scalar.indexCast c0_i32_799
  let c0_i32_475 : BitVec 32 := 0#32
  let c1_i32_477 : BitVec 32 := 1#32
  let arg15 : BitVec 32 := Scf.iv c0_i32_475 c1_i32_477 k0_t4
  let v951 : Index := Scalar.indexCast arg15
  let c320_800 : Index := 320#32
  ![0, 0, v951.toNat, 320]
def k0_off1264 (k0_t4 : Fin k0_t4_loop.trips) : Fin 4 → Nat :=
  let c2_i32_801 : BitVec 32 := 2#32
  let v955 : Index := Scalar.indexCast c2_i32_801
  let c0_i32_802 : BitVec 32 := 0#32
  let v956 : Index := Scalar.indexCast c0_i32_802
  let c0_i32_475 : BitVec 32 := 0#32
  let c1_i32_477 : BitVec 32 := 1#32
  let arg15 : BitVec 32 := Scf.iv c0_i32_475 c1_i32_477 k0_t4
  let v957 : Index := Scalar.indexCast arg15
  let c336_803 : Index := 336#32
  ![2, 0, v957.toNat, 336]
def k0_off1265 (k0_t4 : Fin k0_t4_loop.trips) : Fin 4 → Nat :=
  let c0_i32_804 : BitVec 32 := 0#32
  let v961 : Index := Scalar.indexCast c0_i32_804
  let c0_i32_805 : BitVec 32 := 0#32
  let v962 : Index := Scalar.indexCast c0_i32_805
  let c0_i32_475 : BitVec 32 := 0#32
  let c1_i32_477 : BitVec 32 := 1#32
  let arg15 : BitVec 32 := Scf.iv c0_i32_475 c1_i32_477 k0_t4
  let v963 : Index := Scalar.indexCast arg15
  let c336_806 : Index := 336#32
  ![0, 0, v963.toNat, 336]
def k0_off1266 (k0_t4 : Fin k0_t4_loop.trips) : Fin 4 → Nat :=
  let c2_i32_807 : BitVec 32 := 2#32
  let v967 : Index := Scalar.indexCast c2_i32_807
  let c0_i32_808 : BitVec 32 := 0#32
  let v968 : Index := Scalar.indexCast c0_i32_808
  let c0_i32_475 : BitVec 32 := 0#32
  let c1_i32_477 : BitVec 32 := 1#32
  let arg15 : BitVec 32 := Scf.iv c0_i32_475 c1_i32_477 k0_t4
  let v969 : Index := Scalar.indexCast arg15
  let c352_809 : Index := 352#32
  ![2, 0, v969.toNat, 352]
def k0_off1267 (k0_t4 : Fin k0_t4_loop.trips) : Fin 4 → Nat :=
  let c0_i32_810 : BitVec 32 := 0#32
  let v973 : Index := Scalar.indexCast c0_i32_810
  let c0_i32_811 : BitVec 32 := 0#32
  let v974 : Index := Scalar.indexCast c0_i32_811
  let c0_i32_475 : BitVec 32 := 0#32
  let c1_i32_477 : BitVec 32 := 1#32
  let arg15 : BitVec 32 := Scf.iv c0_i32_475 c1_i32_477 k0_t4
  let v975 : Index := Scalar.indexCast arg15
  let c352_812 : Index := 352#32
  ![0, 0, v975.toNat, 352]
def k0_off1268 (k0_t4 : Fin k0_t4_loop.trips) : Fin 4 → Nat :=
  let c2_i32_813 : BitVec 32 := 2#32
  let v979 : Index := Scalar.indexCast c2_i32_813
  let c0_i32_814 : BitVec 32 := 0#32
  let v980 : Index := Scalar.indexCast c0_i32_814
  let c0_i32_475 : BitVec 32 := 0#32
  let c1_i32_477 : BitVec 32 := 1#32
  let arg15 : BitVec 32 := Scf.iv c0_i32_475 c1_i32_477 k0_t4
  let v981 : Index := Scalar.indexCast arg15
  let c368_815 : Index := 368#32
  ![2, 0, v981.toNat, 368]
def k0_off1269 (k0_t4 : Fin k0_t4_loop.trips) : Fin 4 → Nat :=
  let c0_i32_816 : BitVec 32 := 0#32
  let v985 : Index := Scalar.indexCast c0_i32_816
  let c0_i32_817 : BitVec 32 := 0#32
  let v986 : Index := Scalar.indexCast c0_i32_817
  let c0_i32_475 : BitVec 32 := 0#32
  let c1_i32_477 : BitVec 32 := 1#32
  let arg15 : BitVec 32 := Scf.iv c0_i32_475 c1_i32_477 k0_t4
  let v987 : Index := Scalar.indexCast arg15
  let c368_818 : Index := 368#32
  ![0, 0, v987.toNat, 368]
def k0_off1270 (k0_t4 : Fin k0_t4_loop.trips) : Fin 4 → Nat :=
  let c2_i32_819 : BitVec 32 := 2#32
  let v991 : Index := Scalar.indexCast c2_i32_819
  let c0_i32_820 : BitVec 32 := 0#32
  let v992 : Index := Scalar.indexCast c0_i32_820
  let c0_i32_475 : BitVec 32 := 0#32
  let c1_i32_477 : BitVec 32 := 1#32
  let arg15 : BitVec 32 := Scf.iv c0_i32_475 c1_i32_477 k0_t4
  let v993 : Index := Scalar.indexCast arg15
  let c384_821 : Index := 384#32
  ![2, 0, v993.toNat, 384]
def k0_off1271 (k0_t4 : Fin k0_t4_loop.trips) : Fin 4 → Nat :=
  let c0_i32_822 : BitVec 32 := 0#32
  let v997 : Index := Scalar.indexCast c0_i32_822
  let c0_i32_823 : BitVec 32 := 0#32
  let v998 : Index := Scalar.indexCast c0_i32_823
  let c0_i32_475 : BitVec 32 := 0#32
  let c1_i32_477 : BitVec 32 := 1#32
  let arg15 : BitVec 32 := Scf.iv c0_i32_475 c1_i32_477 k0_t4
  let v999 : Index := Scalar.indexCast arg15
  let c384_824 : Index := 384#32
  ![0, 0, v999.toNat, 384]
def k0_off1272 (k0_t4 : Fin k0_t4_loop.trips) : Fin 4 → Nat :=
  let c2_i32_825 : BitVec 32 := 2#32
  let v1003 : Index := Scalar.indexCast c2_i32_825
  let c0_i32_826 : BitVec 32 := 0#32
  let v1004 : Index := Scalar.indexCast c0_i32_826
  let c0_i32_475 : BitVec 32 := 0#32
  let c1_i32_477 : BitVec 32 := 1#32
  let arg15 : BitVec 32 := Scf.iv c0_i32_475 c1_i32_477 k0_t4
  let v1005 : Index := Scalar.indexCast arg15
  let c400_827 : Index := 400#32
  ![2, 0, v1005.toNat, 400]
def k0_off1273 (k0_t4 : Fin k0_t4_loop.trips) : Fin 4 → Nat :=
  let c0_i32_828 : BitVec 32 := 0#32
  let v1009 : Index := Scalar.indexCast c0_i32_828
  let c0_i32_829 : BitVec 32 := 0#32
  let v1010 : Index := Scalar.indexCast c0_i32_829
  let c0_i32_475 : BitVec 32 := 0#32
  let c1_i32_477 : BitVec 32 := 1#32
  let arg15 : BitVec 32 := Scf.iv c0_i32_475 c1_i32_477 k0_t4
  let v1011 : Index := Scalar.indexCast arg15
  let c400_830 : Index := 400#32
  ![0, 0, v1011.toNat, 400]
def k0_off1274 (k0_t4 : Fin k0_t4_loop.trips) : Fin 4 → Nat :=
  let c2_i32_831 : BitVec 32 := 2#32
  let v1015 : Index := Scalar.indexCast c2_i32_831
  let c0_i32_832 : BitVec 32 := 0#32
  let v1016 : Index := Scalar.indexCast c0_i32_832
  let c0_i32_475 : BitVec 32 := 0#32
  let c1_i32_477 : BitVec 32 := 1#32
  let arg15 : BitVec 32 := Scf.iv c0_i32_475 c1_i32_477 k0_t4
  let v1017 : Index := Scalar.indexCast arg15
  let c416_833 : Index := 416#32
  ![2, 0, v1017.toNat, 416]
def k0_off1275 (k0_t4 : Fin k0_t4_loop.trips) : Fin 4 → Nat :=
  let c0_i32_834 : BitVec 32 := 0#32
  let v1021 : Index := Scalar.indexCast c0_i32_834
  let c0_i32_835 : BitVec 32 := 0#32
  let v1022 : Index := Scalar.indexCast c0_i32_835
  let c0_i32_475 : BitVec 32 := 0#32
  let c1_i32_477 : BitVec 32 := 1#32
  let arg15 : BitVec 32 := Scf.iv c0_i32_475 c1_i32_477 k0_t4
  let v1023 : Index := Scalar.indexCast arg15
  let c416_836 : Index := 416#32
  ![0, 0, v1023.toNat, 416]
def k0_off1276 (k0_t4 : Fin k0_t4_loop.trips) : Fin 4 → Nat :=
  let c2_i32_837 : BitVec 32 := 2#32
  let v1027 : Index := Scalar.indexCast c2_i32_837
  let c0_i32_838 : BitVec 32 := 0#32
  let v1028 : Index := Scalar.indexCast c0_i32_838
  let c0_i32_475 : BitVec 32 := 0#32
  let c1_i32_477 : BitVec 32 := 1#32
  let arg15 : BitVec 32 := Scf.iv c0_i32_475 c1_i32_477 k0_t4
  let v1029 : Index := Scalar.indexCast arg15
  let c432_839 : Index := 432#32
  ![2, 0, v1029.toNat, 432]
def k0_off1277 (k0_t4 : Fin k0_t4_loop.trips) : Fin 4 → Nat :=
  let c0_i32_840 : BitVec 32 := 0#32
  let v1033 : Index := Scalar.indexCast c0_i32_840
  let c0_i32_841 : BitVec 32 := 0#32
  let v1034 : Index := Scalar.indexCast c0_i32_841
  let c0_i32_475 : BitVec 32 := 0#32
  let c1_i32_477 : BitVec 32 := 1#32
  let arg15 : BitVec 32 := Scf.iv c0_i32_475 c1_i32_477 k0_t4
  let v1035 : Index := Scalar.indexCast arg15
  let c432_842 : Index := 432#32
  ![0, 0, v1035.toNat, 432]
def k0_off1278 (k0_t4 : Fin k0_t4_loop.trips) : Fin 4 → Nat :=
  let c2_i32_843 : BitVec 32 := 2#32
  let v1039 : Index := Scalar.indexCast c2_i32_843
  let c0_i32_844 : BitVec 32 := 0#32
  let v1040 : Index := Scalar.indexCast c0_i32_844
  let c0_i32_475 : BitVec 32 := 0#32
  let c1_i32_477 : BitVec 32 := 1#32
  let arg15 : BitVec 32 := Scf.iv c0_i32_475 c1_i32_477 k0_t4
  let v1041 : Index := Scalar.indexCast arg15
  let c448_845 : Index := 448#32
  ![2, 0, v1041.toNat, 448]
def k0_off1279 (k0_t4 : Fin k0_t4_loop.trips) : Fin 4 → Nat :=
  let c0_i32_846 : BitVec 32 := 0#32
  let v1045 : Index := Scalar.indexCast c0_i32_846
  let c0_i32_847 : BitVec 32 := 0#32
  let v1046 : Index := Scalar.indexCast c0_i32_847
  let c0_i32_475 : BitVec 32 := 0#32
  let c1_i32_477 : BitVec 32 := 1#32
  let arg15 : BitVec 32 := Scf.iv c0_i32_475 c1_i32_477 k0_t4
  let v1047 : Index := Scalar.indexCast arg15
  let c448_848 : Index := 448#32
  ![0, 0, v1047.toNat, 448]
def k0_off1280 (k0_t4 : Fin k0_t4_loop.trips) : Fin 4 → Nat :=
  let c2_i32_849 : BitVec 32 := 2#32
  let v1051 : Index := Scalar.indexCast c2_i32_849
  let c0_i32_850 : BitVec 32 := 0#32
  let v1052 : Index := Scalar.indexCast c0_i32_850
  let c0_i32_475 : BitVec 32 := 0#32
  let c1_i32_477 : BitVec 32 := 1#32
  let arg15 : BitVec 32 := Scf.iv c0_i32_475 c1_i32_477 k0_t4
  let v1053 : Index := Scalar.indexCast arg15
  let c464_851 : Index := 464#32
  ![2, 0, v1053.toNat, 464]
def k0_off1281 (k0_t4 : Fin k0_t4_loop.trips) : Fin 4 → Nat :=
  let c0_i32_852 : BitVec 32 := 0#32
  let v1057 : Index := Scalar.indexCast c0_i32_852
  let c0_i32_853 : BitVec 32 := 0#32
  let v1058 : Index := Scalar.indexCast c0_i32_853
  let c0_i32_475 : BitVec 32 := 0#32
  let c1_i32_477 : BitVec 32 := 1#32
  let arg15 : BitVec 32 := Scf.iv c0_i32_475 c1_i32_477 k0_t4
  let v1059 : Index := Scalar.indexCast arg15
  let c464_854 : Index := 464#32
  ![0, 0, v1059.toNat, 464]
def k0_off1282 (k0_t4 : Fin k0_t4_loop.trips) : Fin 4 → Nat :=
  let c2_i32_855 : BitVec 32 := 2#32
  let v1063 : Index := Scalar.indexCast c2_i32_855
  let c0_i32_856 : BitVec 32 := 0#32
  let v1064 : Index := Scalar.indexCast c0_i32_856
  let c0_i32_475 : BitVec 32 := 0#32
  let c1_i32_477 : BitVec 32 := 1#32
  let arg15 : BitVec 32 := Scf.iv c0_i32_475 c1_i32_477 k0_t4
  let v1065 : Index := Scalar.indexCast arg15
  let c480_857 : Index := 480#32
  ![2, 0, v1065.toNat, 480]
def k0_off1283 (k0_t4 : Fin k0_t4_loop.trips) : Fin 4 → Nat :=
  let c0_i32_858 : BitVec 32 := 0#32
  let v1069 : Index := Scalar.indexCast c0_i32_858
  let c0_i32_859 : BitVec 32 := 0#32
  let v1070 : Index := Scalar.indexCast c0_i32_859
  let c0_i32_475 : BitVec 32 := 0#32
  let c1_i32_477 : BitVec 32 := 1#32
  let arg15 : BitVec 32 := Scf.iv c0_i32_475 c1_i32_477 k0_t4
  let v1071 : Index := Scalar.indexCast arg15
  let c480_860 : Index := 480#32
  ![0, 0, v1071.toNat, 480]
def k0_off1284 (k0_t4 : Fin k0_t4_loop.trips) : Fin 4 → Nat :=
  let c2_i32_861 : BitVec 32 := 2#32
  let v1075 : Index := Scalar.indexCast c2_i32_861
  let c0_i32_862 : BitVec 32 := 0#32
  let v1076 : Index := Scalar.indexCast c0_i32_862
  let c0_i32_475 : BitVec 32 := 0#32
  let c1_i32_477 : BitVec 32 := 1#32
  let arg15 : BitVec 32 := Scf.iv c0_i32_475 c1_i32_477 k0_t4
  let v1077 : Index := Scalar.indexCast arg15
  let c496_863 : Index := 496#32
  ![2, 0, v1077.toNat, 496]
def k0_off1285 (k0_t4 : Fin k0_t4_loop.trips) : Fin 4 → Nat :=
  let c0_i32_864 : BitVec 32 := 0#32
  let v1081 : Index := Scalar.indexCast c0_i32_864
  let c0_i32_865 : BitVec 32 := 0#32
  let v1082 : Index := Scalar.indexCast c0_i32_865
  let c0_i32_475 : BitVec 32 := 0#32
  let c1_i32_477 : BitVec 32 := 1#32
  let arg15 : BitVec 32 := Scf.iv c0_i32_475 c1_i32_477 k0_t4
  let v1083 : Index := Scalar.indexCast arg15
  let c496_866 : Index := 496#32
  ![0, 0, v1083.toNat, 496]
def k0_off1286 (k0_t4 : Fin k0_t4_loop.trips) : Fin 4 → Nat :=
  let c2_i32_867 : BitVec 32 := 2#32
  let v1087 : Index := Scalar.indexCast c2_i32_867
  let c1_i32_868 : BitVec 32 := 1#32
  let v1088 : Index := Scalar.indexCast c1_i32_868
  let c0_i32_475 : BitVec 32 := 0#32
  let c1_i32_477 : BitVec 32 := 1#32
  let arg15 : BitVec 32 := Scf.iv c0_i32_475 c1_i32_477 k0_t4
  let v1089 : Index := Scalar.indexCast arg15
  let c0_869 : Index := 0#32
  ![2, 1, v1089.toNat, 0]
def k0_off1287 (k0_t4 : Fin k0_t4_loop.trips) : Fin 4 → Nat :=
  let c0_i32_870 : BitVec 32 := 0#32
  let v1093 : Index := Scalar.indexCast c0_i32_870
  let c1_i32_871 : BitVec 32 := 1#32
  let v1094 : Index := Scalar.indexCast c1_i32_871
  let c0_i32_475 : BitVec 32 := 0#32
  let c1_i32_477 : BitVec 32 := 1#32
  let arg15 : BitVec 32 := Scf.iv c0_i32_475 c1_i32_477 k0_t4
  let v1095 : Index := Scalar.indexCast arg15
  let c0_872 : Index := 0#32
  ![0, 1, v1095.toNat, 0]
def k0_off1288 (k0_t4 : Fin k0_t4_loop.trips) : Fin 4 → Nat :=
  let c2_i32_873 : BitVec 32 := 2#32
  let v1099 : Index := Scalar.indexCast c2_i32_873
  let c1_i32_874 : BitVec 32 := 1#32
  let v1100 : Index := Scalar.indexCast c1_i32_874
  let c0_i32_475 : BitVec 32 := 0#32
  let c1_i32_477 : BitVec 32 := 1#32
  let arg15 : BitVec 32 := Scf.iv c0_i32_475 c1_i32_477 k0_t4
  let v1101 : Index := Scalar.indexCast arg15
  let c16_875 : Index := 16#32
  ![2, 1, v1101.toNat, 16]
def k0_off1289 (k0_t4 : Fin k0_t4_loop.trips) : Fin 4 → Nat :=
  let c0_i32_876 : BitVec 32 := 0#32
  let v1105 : Index := Scalar.indexCast c0_i32_876
  let c1_i32_877 : BitVec 32 := 1#32
  let v1106 : Index := Scalar.indexCast c1_i32_877
  let c0_i32_475 : BitVec 32 := 0#32
  let c1_i32_477 : BitVec 32 := 1#32
  let arg15 : BitVec 32 := Scf.iv c0_i32_475 c1_i32_477 k0_t4
  let v1107 : Index := Scalar.indexCast arg15
  let c16_878 : Index := 16#32
  ![0, 1, v1107.toNat, 16]
def k0_off1290 (k0_t4 : Fin k0_t4_loop.trips) : Fin 4 → Nat :=
  let c2_i32_879 : BitVec 32 := 2#32
  let v1111 : Index := Scalar.indexCast c2_i32_879
  let c1_i32_880 : BitVec 32 := 1#32
  let v1112 : Index := Scalar.indexCast c1_i32_880
  let c0_i32_475 : BitVec 32 := 0#32
  let c1_i32_477 : BitVec 32 := 1#32
  let arg15 : BitVec 32 := Scf.iv c0_i32_475 c1_i32_477 k0_t4
  let v1113 : Index := Scalar.indexCast arg15
  let c32_881 : Index := 32#32
  ![2, 1, v1113.toNat, 32]
def k0_off1291 (k0_t4 : Fin k0_t4_loop.trips) : Fin 4 → Nat :=
  let c0_i32_882 : BitVec 32 := 0#32
  let v1117 : Index := Scalar.indexCast c0_i32_882
  let c1_i32_883 : BitVec 32 := 1#32
  let v1118 : Index := Scalar.indexCast c1_i32_883
  let c0_i32_475 : BitVec 32 := 0#32
  let c1_i32_477 : BitVec 32 := 1#32
  let arg15 : BitVec 32 := Scf.iv c0_i32_475 c1_i32_477 k0_t4
  let v1119 : Index := Scalar.indexCast arg15
  let c32_884 : Index := 32#32
  ![0, 1, v1119.toNat, 32]
def k0_off1292 (k0_t4 : Fin k0_t4_loop.trips) : Fin 4 → Nat :=
  let c2_i32_885 : BitVec 32 := 2#32
  let v1123 : Index := Scalar.indexCast c2_i32_885
  let c1_i32_886 : BitVec 32 := 1#32
  let v1124 : Index := Scalar.indexCast c1_i32_886
  let c0_i32_475 : BitVec 32 := 0#32
  let c1_i32_477 : BitVec 32 := 1#32
  let arg15 : BitVec 32 := Scf.iv c0_i32_475 c1_i32_477 k0_t4
  let v1125 : Index := Scalar.indexCast arg15
  let c48_887 : Index := 48#32
  ![2, 1, v1125.toNat, 48]
def k0_off1293 (k0_t4 : Fin k0_t4_loop.trips) : Fin 4 → Nat :=
  let c0_i32_888 : BitVec 32 := 0#32
  let v1129 : Index := Scalar.indexCast c0_i32_888
  let c1_i32_889 : BitVec 32 := 1#32
  let v1130 : Index := Scalar.indexCast c1_i32_889
  let c0_i32_475 : BitVec 32 := 0#32
  let c1_i32_477 : BitVec 32 := 1#32
  let arg15 : BitVec 32 := Scf.iv c0_i32_475 c1_i32_477 k0_t4
  let v1131 : Index := Scalar.indexCast arg15
  let c48_890 : Index := 48#32
  ![0, 1, v1131.toNat, 48]
def k0_off1294 (k0_t4 : Fin k0_t4_loop.trips) : Fin 4 → Nat :=
  let c2_i32_891 : BitVec 32 := 2#32
  let v1135 : Index := Scalar.indexCast c2_i32_891
  let c1_i32_892 : BitVec 32 := 1#32
  let v1136 : Index := Scalar.indexCast c1_i32_892
  let c0_i32_475 : BitVec 32 := 0#32
  let c1_i32_477 : BitVec 32 := 1#32
  let arg15 : BitVec 32 := Scf.iv c0_i32_475 c1_i32_477 k0_t4
  let v1137 : Index := Scalar.indexCast arg15
  let c64_893 : Index := 64#32
  ![2, 1, v1137.toNat, 64]
def k0_off1295 (k0_t4 : Fin k0_t4_loop.trips) : Fin 4 → Nat :=
  let c0_i32_894 : BitVec 32 := 0#32
  let v1141 : Index := Scalar.indexCast c0_i32_894
  let c1_i32_895 : BitVec 32 := 1#32
  let v1142 : Index := Scalar.indexCast c1_i32_895
  let c0_i32_475 : BitVec 32 := 0#32
  let c1_i32_477 : BitVec 32 := 1#32
  let arg15 : BitVec 32 := Scf.iv c0_i32_475 c1_i32_477 k0_t4
  let v1143 : Index := Scalar.indexCast arg15
  let c64_896 : Index := 64#32
  ![0, 1, v1143.toNat, 64]
def k0_off1296 (k0_t4 : Fin k0_t4_loop.trips) : Fin 4 → Nat :=
  let c2_i32_897 : BitVec 32 := 2#32
  let v1147 : Index := Scalar.indexCast c2_i32_897
  let c1_i32_898 : BitVec 32 := 1#32
  let v1148 : Index := Scalar.indexCast c1_i32_898
  let c0_i32_475 : BitVec 32 := 0#32
  let c1_i32_477 : BitVec 32 := 1#32
  let arg15 : BitVec 32 := Scf.iv c0_i32_475 c1_i32_477 k0_t4
  let v1149 : Index := Scalar.indexCast arg15
  let c80_899 : Index := 80#32
  ![2, 1, v1149.toNat, 80]
def k0_off1297 (k0_t4 : Fin k0_t4_loop.trips) : Fin 4 → Nat :=
  let c0_i32_900 : BitVec 32 := 0#32
  let v1153 : Index := Scalar.indexCast c0_i32_900
  let c1_i32_901 : BitVec 32 := 1#32
  let v1154 : Index := Scalar.indexCast c1_i32_901
  let c0_i32_475 : BitVec 32 := 0#32
  let c1_i32_477 : BitVec 32 := 1#32
  let arg15 : BitVec 32 := Scf.iv c0_i32_475 c1_i32_477 k0_t4
  let v1155 : Index := Scalar.indexCast arg15
  let c80_902 : Index := 80#32
  ![0, 1, v1155.toNat, 80]
def k0_off1298 (k0_t4 : Fin k0_t4_loop.trips) : Fin 4 → Nat :=
  let c2_i32_903 : BitVec 32 := 2#32
  let v1159 : Index := Scalar.indexCast c2_i32_903
  let c1_i32_904 : BitVec 32 := 1#32
  let v1160 : Index := Scalar.indexCast c1_i32_904
  let c0_i32_475 : BitVec 32 := 0#32
  let c1_i32_477 : BitVec 32 := 1#32
  let arg15 : BitVec 32 := Scf.iv c0_i32_475 c1_i32_477 k0_t4
  let v1161 : Index := Scalar.indexCast arg15
  let c96_905 : Index := 96#32
  ![2, 1, v1161.toNat, 96]
def k0_off1299 (k0_t4 : Fin k0_t4_loop.trips) : Fin 4 → Nat :=
  let c0_i32_906 : BitVec 32 := 0#32
  let v1165 : Index := Scalar.indexCast c0_i32_906
  let c1_i32_907 : BitVec 32 := 1#32
  let v1166 : Index := Scalar.indexCast c1_i32_907
  let c0_i32_475 : BitVec 32 := 0#32
  let c1_i32_477 : BitVec 32 := 1#32
  let arg15 : BitVec 32 := Scf.iv c0_i32_475 c1_i32_477 k0_t4
  let v1167 : Index := Scalar.indexCast arg15
  let c96_908 : Index := 96#32
  ![0, 1, v1167.toNat, 96]
def k0_off1300 (k0_t4 : Fin k0_t4_loop.trips) : Fin 4 → Nat :=
  let c2_i32_909 : BitVec 32 := 2#32
  let v1171 : Index := Scalar.indexCast c2_i32_909
  let c1_i32_910 : BitVec 32 := 1#32
  let v1172 : Index := Scalar.indexCast c1_i32_910
  let c0_i32_475 : BitVec 32 := 0#32
  let c1_i32_477 : BitVec 32 := 1#32
  let arg15 : BitVec 32 := Scf.iv c0_i32_475 c1_i32_477 k0_t4
  let v1173 : Index := Scalar.indexCast arg15
  let c112_911 : Index := 112#32
  ![2, 1, v1173.toNat, 112]
def k0_off1301 (k0_t4 : Fin k0_t4_loop.trips) : Fin 4 → Nat :=
  let c0_i32_912 : BitVec 32 := 0#32
  let v1177 : Index := Scalar.indexCast c0_i32_912
  let c1_i32_913 : BitVec 32 := 1#32
  let v1178 : Index := Scalar.indexCast c1_i32_913
  let c0_i32_475 : BitVec 32 := 0#32
  let c1_i32_477 : BitVec 32 := 1#32
  let arg15 : BitVec 32 := Scf.iv c0_i32_475 c1_i32_477 k0_t4
  let v1179 : Index := Scalar.indexCast arg15
  let c112_914 : Index := 112#32
  ![0, 1, v1179.toNat, 112]
def k0_off1302 (k0_t4 : Fin k0_t4_loop.trips) : Fin 4 → Nat :=
  let c2_i32_915 : BitVec 32 := 2#32
  let v1183 : Index := Scalar.indexCast c2_i32_915
  let c1_i32_916 : BitVec 32 := 1#32
  let v1184 : Index := Scalar.indexCast c1_i32_916
  let c0_i32_475 : BitVec 32 := 0#32
  let c1_i32_477 : BitVec 32 := 1#32
  let arg15 : BitVec 32 := Scf.iv c0_i32_475 c1_i32_477 k0_t4
  let v1185 : Index := Scalar.indexCast arg15
  let c128_917 : Index := 128#32
  ![2, 1, v1185.toNat, 128]
def k0_off1303 (k0_t4 : Fin k0_t4_loop.trips) : Fin 4 → Nat :=
  let c0_i32_918 : BitVec 32 := 0#32
  let v1189 : Index := Scalar.indexCast c0_i32_918
  let c1_i32_919 : BitVec 32 := 1#32
  let v1190 : Index := Scalar.indexCast c1_i32_919
  let c0_i32_475 : BitVec 32 := 0#32
  let c1_i32_477 : BitVec 32 := 1#32
  let arg15 : BitVec 32 := Scf.iv c0_i32_475 c1_i32_477 k0_t4
  let v1191 : Index := Scalar.indexCast arg15
  let c128_920 : Index := 128#32
  ![0, 1, v1191.toNat, 128]
def k0_off1304 (k0_t4 : Fin k0_t4_loop.trips) : Fin 4 → Nat :=
  let c2_i32_921 : BitVec 32 := 2#32
  let v1195 : Index := Scalar.indexCast c2_i32_921
  let c1_i32_922 : BitVec 32 := 1#32
  let v1196 : Index := Scalar.indexCast c1_i32_922
  let c0_i32_475 : BitVec 32 := 0#32
  let c1_i32_477 : BitVec 32 := 1#32
  let arg15 : BitVec 32 := Scf.iv c0_i32_475 c1_i32_477 k0_t4
  let v1197 : Index := Scalar.indexCast arg15
  let c144_923 : Index := 144#32
  ![2, 1, v1197.toNat, 144]
def k0_off1305 (k0_t4 : Fin k0_t4_loop.trips) : Fin 4 → Nat :=
  let c0_i32_924 : BitVec 32 := 0#32
  let v1201 : Index := Scalar.indexCast c0_i32_924
  let c1_i32_925 : BitVec 32 := 1#32
  let v1202 : Index := Scalar.indexCast c1_i32_925
  let c0_i32_475 : BitVec 32 := 0#32
  let c1_i32_477 : BitVec 32 := 1#32
  let arg15 : BitVec 32 := Scf.iv c0_i32_475 c1_i32_477 k0_t4
  let v1203 : Index := Scalar.indexCast arg15
  let c144_926 : Index := 144#32
  ![0, 1, v1203.toNat, 144]
def k0_off1306 (k0_t4 : Fin k0_t4_loop.trips) : Fin 4 → Nat :=
  let c2_i32_927 : BitVec 32 := 2#32
  let v1207 : Index := Scalar.indexCast c2_i32_927
  let c1_i32_928 : BitVec 32 := 1#32
  let v1208 : Index := Scalar.indexCast c1_i32_928
  let c0_i32_475 : BitVec 32 := 0#32
  let c1_i32_477 : BitVec 32 := 1#32
  let arg15 : BitVec 32 := Scf.iv c0_i32_475 c1_i32_477 k0_t4
  let v1209 : Index := Scalar.indexCast arg15
  let c160_929 : Index := 160#32
  ![2, 1, v1209.toNat, 160]
def k0_off1307 (k0_t4 : Fin k0_t4_loop.trips) : Fin 4 → Nat :=
  let c0_i32_930 : BitVec 32 := 0#32
  let v1213 : Index := Scalar.indexCast c0_i32_930
  let c1_i32_931 : BitVec 32 := 1#32
  let v1214 : Index := Scalar.indexCast c1_i32_931
  let c0_i32_475 : BitVec 32 := 0#32
  let c1_i32_477 : BitVec 32 := 1#32
  let arg15 : BitVec 32 := Scf.iv c0_i32_475 c1_i32_477 k0_t4
  let v1215 : Index := Scalar.indexCast arg15
  let c160_932 : Index := 160#32
  ![0, 1, v1215.toNat, 160]
def k0_off1308 (k0_t4 : Fin k0_t4_loop.trips) : Fin 4 → Nat :=
  let c2_i32_933 : BitVec 32 := 2#32
  let v1219 : Index := Scalar.indexCast c2_i32_933
  let c1_i32_934 : BitVec 32 := 1#32
  let v1220 : Index := Scalar.indexCast c1_i32_934
  let c0_i32_475 : BitVec 32 := 0#32
  let c1_i32_477 : BitVec 32 := 1#32
  let arg15 : BitVec 32 := Scf.iv c0_i32_475 c1_i32_477 k0_t4
  let v1221 : Index := Scalar.indexCast arg15
  let c176_935 : Index := 176#32
  ![2, 1, v1221.toNat, 176]
def k0_off1309 (k0_t4 : Fin k0_t4_loop.trips) : Fin 4 → Nat :=
  let c0_i32_936 : BitVec 32 := 0#32
  let v1225 : Index := Scalar.indexCast c0_i32_936
  let c1_i32_937 : BitVec 32 := 1#32
  let v1226 : Index := Scalar.indexCast c1_i32_937
  let c0_i32_475 : BitVec 32 := 0#32
  let c1_i32_477 : BitVec 32 := 1#32
  let arg15 : BitVec 32 := Scf.iv c0_i32_475 c1_i32_477 k0_t4
  let v1227 : Index := Scalar.indexCast arg15
  let c176_938 : Index := 176#32
  ![0, 1, v1227.toNat, 176]
def k0_off1310 (k0_t4 : Fin k0_t4_loop.trips) : Fin 4 → Nat :=
  let c2_i32_939 : BitVec 32 := 2#32
  let v1231 : Index := Scalar.indexCast c2_i32_939
  let c1_i32_940 : BitVec 32 := 1#32
  let v1232 : Index := Scalar.indexCast c1_i32_940
  let c0_i32_475 : BitVec 32 := 0#32
  let c1_i32_477 : BitVec 32 := 1#32
  let arg15 : BitVec 32 := Scf.iv c0_i32_475 c1_i32_477 k0_t4
  let v1233 : Index := Scalar.indexCast arg15
  let c192_941 : Index := 192#32
  ![2, 1, v1233.toNat, 192]
def k0_off1311 (k0_t4 : Fin k0_t4_loop.trips) : Fin 4 → Nat :=
  let c0_i32_942 : BitVec 32 := 0#32
  let v1237 : Index := Scalar.indexCast c0_i32_942
  let c1_i32_943 : BitVec 32 := 1#32
  let v1238 : Index := Scalar.indexCast c1_i32_943
  let c0_i32_475 : BitVec 32 := 0#32
  let c1_i32_477 : BitVec 32 := 1#32
  let arg15 : BitVec 32 := Scf.iv c0_i32_475 c1_i32_477 k0_t4
  let v1239 : Index := Scalar.indexCast arg15
  let c192_944 : Index := 192#32
  ![0, 1, v1239.toNat, 192]
def k0_off1312 (k0_t4 : Fin k0_t4_loop.trips) : Fin 4 → Nat :=
  let c2_i32_945 : BitVec 32 := 2#32
  let v1243 : Index := Scalar.indexCast c2_i32_945
  let c1_i32_946 : BitVec 32 := 1#32
  let v1244 : Index := Scalar.indexCast c1_i32_946
  let c0_i32_475 : BitVec 32 := 0#32
  let c1_i32_477 : BitVec 32 := 1#32
  let arg15 : BitVec 32 := Scf.iv c0_i32_475 c1_i32_477 k0_t4
  let v1245 : Index := Scalar.indexCast arg15
  let c208_947 : Index := 208#32
  ![2, 1, v1245.toNat, 208]
def k0_off1313 (k0_t4 : Fin k0_t4_loop.trips) : Fin 4 → Nat :=
  let c0_i32_948 : BitVec 32 := 0#32
  let v1249 : Index := Scalar.indexCast c0_i32_948
  let c1_i32_949 : BitVec 32 := 1#32
  let v1250 : Index := Scalar.indexCast c1_i32_949
  let c0_i32_475 : BitVec 32 := 0#32
  let c1_i32_477 : BitVec 32 := 1#32
  let arg15 : BitVec 32 := Scf.iv c0_i32_475 c1_i32_477 k0_t4
  let v1251 : Index := Scalar.indexCast arg15
  let c208_950 : Index := 208#32
  ![0, 1, v1251.toNat, 208]
def k0_off1314 (k0_t4 : Fin k0_t4_loop.trips) : Fin 4 → Nat :=
  let c2_i32_951 : BitVec 32 := 2#32
  let v1255 : Index := Scalar.indexCast c2_i32_951
  let c1_i32_952 : BitVec 32 := 1#32
  let v1256 : Index := Scalar.indexCast c1_i32_952
  let c0_i32_475 : BitVec 32 := 0#32
  let c1_i32_477 : BitVec 32 := 1#32
  let arg15 : BitVec 32 := Scf.iv c0_i32_475 c1_i32_477 k0_t4
  let v1257 : Index := Scalar.indexCast arg15
  let c224_953 : Index := 224#32
  ![2, 1, v1257.toNat, 224]
def k0_off1315 (k0_t4 : Fin k0_t4_loop.trips) : Fin 4 → Nat :=
  let c0_i32_954 : BitVec 32 := 0#32
  let v1261 : Index := Scalar.indexCast c0_i32_954
  let c1_i32_955 : BitVec 32 := 1#32
  let v1262 : Index := Scalar.indexCast c1_i32_955
  let c0_i32_475 : BitVec 32 := 0#32
  let c1_i32_477 : BitVec 32 := 1#32
  let arg15 : BitVec 32 := Scf.iv c0_i32_475 c1_i32_477 k0_t4
  let v1263 : Index := Scalar.indexCast arg15
  let c224_956 : Index := 224#32
  ![0, 1, v1263.toNat, 224]
def k0_off1316 (k0_t4 : Fin k0_t4_loop.trips) : Fin 4 → Nat :=
  let c2_i32_957 : BitVec 32 := 2#32
  let v1267 : Index := Scalar.indexCast c2_i32_957
  let c1_i32_958 : BitVec 32 := 1#32
  let v1268 : Index := Scalar.indexCast c1_i32_958
  let c0_i32_475 : BitVec 32 := 0#32
  let c1_i32_477 : BitVec 32 := 1#32
  let arg15 : BitVec 32 := Scf.iv c0_i32_475 c1_i32_477 k0_t4
  let v1269 : Index := Scalar.indexCast arg15
  let c240_959 : Index := 240#32
  ![2, 1, v1269.toNat, 240]
def k0_off1317 (k0_t4 : Fin k0_t4_loop.trips) : Fin 4 → Nat :=
  let c0_i32_960 : BitVec 32 := 0#32
  let v1273 : Index := Scalar.indexCast c0_i32_960
  let c1_i32_961 : BitVec 32 := 1#32
  let v1274 : Index := Scalar.indexCast c1_i32_961
  let c0_i32_475 : BitVec 32 := 0#32
  let c1_i32_477 : BitVec 32 := 1#32
  let arg15 : BitVec 32 := Scf.iv c0_i32_475 c1_i32_477 k0_t4
  let v1275 : Index := Scalar.indexCast arg15
  let c240_962 : Index := 240#32
  ![0, 1, v1275.toNat, 240]
def k0_off1318 (k0_t4 : Fin k0_t4_loop.trips) : Fin 4 → Nat :=
  let c2_i32_963 : BitVec 32 := 2#32
  let v1279 : Index := Scalar.indexCast c2_i32_963
  let c1_i32_964 : BitVec 32 := 1#32
  let v1280 : Index := Scalar.indexCast c1_i32_964
  let c0_i32_475 : BitVec 32 := 0#32
  let c1_i32_477 : BitVec 32 := 1#32
  let arg15 : BitVec 32 := Scf.iv c0_i32_475 c1_i32_477 k0_t4
  let v1281 : Index := Scalar.indexCast arg15
  let c256_965 : Index := 256#32
  ![2, 1, v1281.toNat, 256]
def k0_off1319 (k0_t4 : Fin k0_t4_loop.trips) : Fin 4 → Nat :=
  let c0_i32_966 : BitVec 32 := 0#32
  let v1285 : Index := Scalar.indexCast c0_i32_966
  let c1_i32_967 : BitVec 32 := 1#32
  let v1286 : Index := Scalar.indexCast c1_i32_967
  let c0_i32_475 : BitVec 32 := 0#32
  let c1_i32_477 : BitVec 32 := 1#32
  let arg15 : BitVec 32 := Scf.iv c0_i32_475 c1_i32_477 k0_t4
  let v1287 : Index := Scalar.indexCast arg15
  let c256_968 : Index := 256#32
  ![0, 1, v1287.toNat, 256]
def k0_off1320 (k0_t4 : Fin k0_t4_loop.trips) : Fin 4 → Nat :=
  let c2_i32_969 : BitVec 32 := 2#32
  let v1291 : Index := Scalar.indexCast c2_i32_969
  let c1_i32_970 : BitVec 32 := 1#32
  let v1292 : Index := Scalar.indexCast c1_i32_970
  let c0_i32_475 : BitVec 32 := 0#32
  let c1_i32_477 : BitVec 32 := 1#32
  let arg15 : BitVec 32 := Scf.iv c0_i32_475 c1_i32_477 k0_t4
  let v1293 : Index := Scalar.indexCast arg15
  let c272_971 : Index := 272#32
  ![2, 1, v1293.toNat, 272]
def k0_off1321 (k0_t4 : Fin k0_t4_loop.trips) : Fin 4 → Nat :=
  let c0_i32_972 : BitVec 32 := 0#32
  let v1297 : Index := Scalar.indexCast c0_i32_972
  let c1_i32_973 : BitVec 32 := 1#32
  let v1298 : Index := Scalar.indexCast c1_i32_973
  let c0_i32_475 : BitVec 32 := 0#32
  let c1_i32_477 : BitVec 32 := 1#32
  let arg15 : BitVec 32 := Scf.iv c0_i32_475 c1_i32_477 k0_t4
  let v1299 : Index := Scalar.indexCast arg15
  let c272_974 : Index := 272#32
  ![0, 1, v1299.toNat, 272]
def k0_off1322 (k0_t4 : Fin k0_t4_loop.trips) : Fin 4 → Nat :=
  let c2_i32_975 : BitVec 32 := 2#32
  let v1303 : Index := Scalar.indexCast c2_i32_975
  let c1_i32_976 : BitVec 32 := 1#32
  let v1304 : Index := Scalar.indexCast c1_i32_976
  let c0_i32_475 : BitVec 32 := 0#32
  let c1_i32_477 : BitVec 32 := 1#32
  let arg15 : BitVec 32 := Scf.iv c0_i32_475 c1_i32_477 k0_t4
  let v1305 : Index := Scalar.indexCast arg15
  let c288_977 : Index := 288#32
  ![2, 1, v1305.toNat, 288]
def k0_off1323 (k0_t4 : Fin k0_t4_loop.trips) : Fin 4 → Nat :=
  let c0_i32_978 : BitVec 32 := 0#32
  let v1309 : Index := Scalar.indexCast c0_i32_978
  let c1_i32_979 : BitVec 32 := 1#32
  let v1310 : Index := Scalar.indexCast c1_i32_979
  let c0_i32_475 : BitVec 32 := 0#32
  let c1_i32_477 : BitVec 32 := 1#32
  let arg15 : BitVec 32 := Scf.iv c0_i32_475 c1_i32_477 k0_t4
  let v1311 : Index := Scalar.indexCast arg15
  let c288_980 : Index := 288#32
  ![0, 1, v1311.toNat, 288]
def k0_off1324 (k0_t4 : Fin k0_t4_loop.trips) : Fin 4 → Nat :=
  let c2_i32_981 : BitVec 32 := 2#32
  let v1315 : Index := Scalar.indexCast c2_i32_981
  let c1_i32_982 : BitVec 32 := 1#32
  let v1316 : Index := Scalar.indexCast c1_i32_982
  let c0_i32_475 : BitVec 32 := 0#32
  let c1_i32_477 : BitVec 32 := 1#32
  let arg15 : BitVec 32 := Scf.iv c0_i32_475 c1_i32_477 k0_t4
  let v1317 : Index := Scalar.indexCast arg15
  let c304_983 : Index := 304#32
  ![2, 1, v1317.toNat, 304]
def k0_off1325 (k0_t4 : Fin k0_t4_loop.trips) : Fin 4 → Nat :=
  let c0_i32_984 : BitVec 32 := 0#32
  let v1321 : Index := Scalar.indexCast c0_i32_984
  let c1_i32_985 : BitVec 32 := 1#32
  let v1322 : Index := Scalar.indexCast c1_i32_985
  let c0_i32_475 : BitVec 32 := 0#32
  let c1_i32_477 : BitVec 32 := 1#32
  let arg15 : BitVec 32 := Scf.iv c0_i32_475 c1_i32_477 k0_t4
  let v1323 : Index := Scalar.indexCast arg15
  let c304_986 : Index := 304#32
  ![0, 1, v1323.toNat, 304]
def k0_off1326 (k0_t4 : Fin k0_t4_loop.trips) : Fin 4 → Nat :=
  let c2_i32_987 : BitVec 32 := 2#32
  let v1327 : Index := Scalar.indexCast c2_i32_987
  let c1_i32_988 : BitVec 32 := 1#32
  let v1328 : Index := Scalar.indexCast c1_i32_988
  let c0_i32_475 : BitVec 32 := 0#32
  let c1_i32_477 : BitVec 32 := 1#32
  let arg15 : BitVec 32 := Scf.iv c0_i32_475 c1_i32_477 k0_t4
  let v1329 : Index := Scalar.indexCast arg15
  let c320_989 : Index := 320#32
  ![2, 1, v1329.toNat, 320]
def k0_off1327 (k0_t4 : Fin k0_t4_loop.trips) : Fin 4 → Nat :=
  let c0_i32_990 : BitVec 32 := 0#32
  let v1333 : Index := Scalar.indexCast c0_i32_990
  let c1_i32_991 : BitVec 32 := 1#32
  let v1334 : Index := Scalar.indexCast c1_i32_991
  let c0_i32_475 : BitVec 32 := 0#32
  let c1_i32_477 : BitVec 32 := 1#32
  let arg15 : BitVec 32 := Scf.iv c0_i32_475 c1_i32_477 k0_t4
  let v1335 : Index := Scalar.indexCast arg15
  let c320_992 : Index := 320#32
  ![0, 1, v1335.toNat, 320]
def k0_off1328 (k0_t4 : Fin k0_t4_loop.trips) : Fin 4 → Nat :=
  let c2_i32_993 : BitVec 32 := 2#32
  let v1339 : Index := Scalar.indexCast c2_i32_993
  let c1_i32_994 : BitVec 32 := 1#32
  let v1340 : Index := Scalar.indexCast c1_i32_994
  let c0_i32_475 : BitVec 32 := 0#32
  let c1_i32_477 : BitVec 32 := 1#32
  let arg15 : BitVec 32 := Scf.iv c0_i32_475 c1_i32_477 k0_t4
  let v1341 : Index := Scalar.indexCast arg15
  let c336_995 : Index := 336#32
  ![2, 1, v1341.toNat, 336]
def k0_off1329 (k0_t4 : Fin k0_t4_loop.trips) : Fin 4 → Nat :=
  let c0_i32_996 : BitVec 32 := 0#32
  let v1345 : Index := Scalar.indexCast c0_i32_996
  let c1_i32_997 : BitVec 32 := 1#32
  let v1346 : Index := Scalar.indexCast c1_i32_997
  let c0_i32_475 : BitVec 32 := 0#32
  let c1_i32_477 : BitVec 32 := 1#32
  let arg15 : BitVec 32 := Scf.iv c0_i32_475 c1_i32_477 k0_t4
  let v1347 : Index := Scalar.indexCast arg15
  let c336_998 : Index := 336#32
  ![0, 1, v1347.toNat, 336]
def k0_off1330 (k0_t4 : Fin k0_t4_loop.trips) : Fin 4 → Nat :=
  let c2_i32_999 : BitVec 32 := 2#32
  let v1351 : Index := Scalar.indexCast c2_i32_999
  let c1_i32_1000 : BitVec 32 := 1#32
  let v1352 : Index := Scalar.indexCast c1_i32_1000
  let c0_i32_475 : BitVec 32 := 0#32
  let c1_i32_477 : BitVec 32 := 1#32
  let arg15 : BitVec 32 := Scf.iv c0_i32_475 c1_i32_477 k0_t4
  let v1353 : Index := Scalar.indexCast arg15
  let c352_1001 : Index := 352#32
  ![2, 1, v1353.toNat, 352]
def k0_off1331 (k0_t4 : Fin k0_t4_loop.trips) : Fin 4 → Nat :=
  let c0_i32_1002 : BitVec 32 := 0#32
  let v1357 : Index := Scalar.indexCast c0_i32_1002
  let c1_i32_1003 : BitVec 32 := 1#32
  let v1358 : Index := Scalar.indexCast c1_i32_1003
  let c0_i32_475 : BitVec 32 := 0#32
  let c1_i32_477 : BitVec 32 := 1#32
  let arg15 : BitVec 32 := Scf.iv c0_i32_475 c1_i32_477 k0_t4
  let v1359 : Index := Scalar.indexCast arg15
  let c352_1004 : Index := 352#32
  ![0, 1, v1359.toNat, 352]
def k0_off1332 (k0_t4 : Fin k0_t4_loop.trips) : Fin 4 → Nat :=
  let c2_i32_1005 : BitVec 32 := 2#32
  let v1363 : Index := Scalar.indexCast c2_i32_1005
  let c1_i32_1006 : BitVec 32 := 1#32
  let v1364 : Index := Scalar.indexCast c1_i32_1006
  let c0_i32_475 : BitVec 32 := 0#32
  let c1_i32_477 : BitVec 32 := 1#32
  let arg15 : BitVec 32 := Scf.iv c0_i32_475 c1_i32_477 k0_t4
  let v1365 : Index := Scalar.indexCast arg15
  let c368_1007 : Index := 368#32
  ![2, 1, v1365.toNat, 368]
def k0_off1333 (k0_t4 : Fin k0_t4_loop.trips) : Fin 4 → Nat :=
  let c0_i32_1008 : BitVec 32 := 0#32
  let v1369 : Index := Scalar.indexCast c0_i32_1008
  let c1_i32_1009 : BitVec 32 := 1#32
  let v1370 : Index := Scalar.indexCast c1_i32_1009
  let c0_i32_475 : BitVec 32 := 0#32
  let c1_i32_477 : BitVec 32 := 1#32
  let arg15 : BitVec 32 := Scf.iv c0_i32_475 c1_i32_477 k0_t4
  let v1371 : Index := Scalar.indexCast arg15
  let c368_1010 : Index := 368#32
  ![0, 1, v1371.toNat, 368]
def k0_off1334 (k0_t4 : Fin k0_t4_loop.trips) : Fin 4 → Nat :=
  let c2_i32_1011 : BitVec 32 := 2#32
  let v1375 : Index := Scalar.indexCast c2_i32_1011
  let c1_i32_1012 : BitVec 32 := 1#32
  let v1376 : Index := Scalar.indexCast c1_i32_1012
  let c0_i32_475 : BitVec 32 := 0#32
  let c1_i32_477 : BitVec 32 := 1#32
  let arg15 : BitVec 32 := Scf.iv c0_i32_475 c1_i32_477 k0_t4
  let v1377 : Index := Scalar.indexCast arg15
  let c384_1013 : Index := 384#32
  ![2, 1, v1377.toNat, 384]
def k0_off1335 (k0_t4 : Fin k0_t4_loop.trips) : Fin 4 → Nat :=
  let c0_i32_1014 : BitVec 32 := 0#32
  let v1381 : Index := Scalar.indexCast c0_i32_1014
  let c1_i32_1015 : BitVec 32 := 1#32
  let v1382 : Index := Scalar.indexCast c1_i32_1015
  let c0_i32_475 : BitVec 32 := 0#32
  let c1_i32_477 : BitVec 32 := 1#32
  let arg15 : BitVec 32 := Scf.iv c0_i32_475 c1_i32_477 k0_t4
  let v1383 : Index := Scalar.indexCast arg15
  let c384_1016 : Index := 384#32
  ![0, 1, v1383.toNat, 384]
def k0_off1336 (k0_t4 : Fin k0_t4_loop.trips) : Fin 4 → Nat :=
  let c2_i32_1017 : BitVec 32 := 2#32
  let v1387 : Index := Scalar.indexCast c2_i32_1017
  let c1_i32_1018 : BitVec 32 := 1#32
  let v1388 : Index := Scalar.indexCast c1_i32_1018
  let c0_i32_475 : BitVec 32 := 0#32
  let c1_i32_477 : BitVec 32 := 1#32
  let arg15 : BitVec 32 := Scf.iv c0_i32_475 c1_i32_477 k0_t4
  let v1389 : Index := Scalar.indexCast arg15
  let c400_1019 : Index := 400#32
  ![2, 1, v1389.toNat, 400]
def k0_off1337 (k0_t4 : Fin k0_t4_loop.trips) : Fin 4 → Nat :=
  let c0_i32_1020 : BitVec 32 := 0#32
  let v1393 : Index := Scalar.indexCast c0_i32_1020
  let c1_i32_1021 : BitVec 32 := 1#32
  let v1394 : Index := Scalar.indexCast c1_i32_1021
  let c0_i32_475 : BitVec 32 := 0#32
  let c1_i32_477 : BitVec 32 := 1#32
  let arg15 : BitVec 32 := Scf.iv c0_i32_475 c1_i32_477 k0_t4
  let v1395 : Index := Scalar.indexCast arg15
  let c400_1022 : Index := 400#32
  ![0, 1, v1395.toNat, 400]
def k0_off1338 (k0_t4 : Fin k0_t4_loop.trips) : Fin 4 → Nat :=
  let c2_i32_1023 : BitVec 32 := 2#32
  let v1399 : Index := Scalar.indexCast c2_i32_1023
  let c1_i32_1024 : BitVec 32 := 1#32
  let v1400 : Index := Scalar.indexCast c1_i32_1024
  let c0_i32_475 : BitVec 32 := 0#32
  let c1_i32_477 : BitVec 32 := 1#32
  let arg15 : BitVec 32 := Scf.iv c0_i32_475 c1_i32_477 k0_t4
  let v1401 : Index := Scalar.indexCast arg15
  let c416_1025 : Index := 416#32
  ![2, 1, v1401.toNat, 416]
def k0_off1339 (k0_t4 : Fin k0_t4_loop.trips) : Fin 4 → Nat :=
  let c0_i32_1026 : BitVec 32 := 0#32
  let v1405 : Index := Scalar.indexCast c0_i32_1026
  let c1_i32_1027 : BitVec 32 := 1#32
  let v1406 : Index := Scalar.indexCast c1_i32_1027
  let c0_i32_475 : BitVec 32 := 0#32
  let c1_i32_477 : BitVec 32 := 1#32
  let arg15 : BitVec 32 := Scf.iv c0_i32_475 c1_i32_477 k0_t4
  let v1407 : Index := Scalar.indexCast arg15
  let c416_1028 : Index := 416#32
  ![0, 1, v1407.toNat, 416]
def k0_off1340 (k0_t4 : Fin k0_t4_loop.trips) : Fin 4 → Nat :=
  let c2_i32_1029 : BitVec 32 := 2#32
  let v1411 : Index := Scalar.indexCast c2_i32_1029
  let c1_i32_1030 : BitVec 32 := 1#32
  let v1412 : Index := Scalar.indexCast c1_i32_1030
  let c0_i32_475 : BitVec 32 := 0#32
  let c1_i32_477 : BitVec 32 := 1#32
  let arg15 : BitVec 32 := Scf.iv c0_i32_475 c1_i32_477 k0_t4
  let v1413 : Index := Scalar.indexCast arg15
  let c432_1031 : Index := 432#32
  ![2, 1, v1413.toNat, 432]
def k0_off1341 (k0_t4 : Fin k0_t4_loop.trips) : Fin 4 → Nat :=
  let c0_i32_1032 : BitVec 32 := 0#32
  let v1417 : Index := Scalar.indexCast c0_i32_1032
  let c1_i32_1033 : BitVec 32 := 1#32
  let v1418 : Index := Scalar.indexCast c1_i32_1033
  let c0_i32_475 : BitVec 32 := 0#32
  let c1_i32_477 : BitVec 32 := 1#32
  let arg15 : BitVec 32 := Scf.iv c0_i32_475 c1_i32_477 k0_t4
  let v1419 : Index := Scalar.indexCast arg15
  let c432_1034 : Index := 432#32
  ![0, 1, v1419.toNat, 432]
def k0_off1342 (k0_t4 : Fin k0_t4_loop.trips) : Fin 4 → Nat :=
  let c2_i32_1035 : BitVec 32 := 2#32
  let v1423 : Index := Scalar.indexCast c2_i32_1035
  let c1_i32_1036 : BitVec 32 := 1#32
  let v1424 : Index := Scalar.indexCast c1_i32_1036
  let c0_i32_475 : BitVec 32 := 0#32
  let c1_i32_477 : BitVec 32 := 1#32
  let arg15 : BitVec 32 := Scf.iv c0_i32_475 c1_i32_477 k0_t4
  let v1425 : Index := Scalar.indexCast arg15
  let c448_1037 : Index := 448#32
  ![2, 1, v1425.toNat, 448]
def k0_off1343 (k0_t4 : Fin k0_t4_loop.trips) : Fin 4 → Nat :=
  let c0_i32_1038 : BitVec 32 := 0#32
  let v1429 : Index := Scalar.indexCast c0_i32_1038
  let c1_i32_1039 : BitVec 32 := 1#32
  let v1430 : Index := Scalar.indexCast c1_i32_1039
  let c0_i32_475 : BitVec 32 := 0#32
  let c1_i32_477 : BitVec 32 := 1#32
  let arg15 : BitVec 32 := Scf.iv c0_i32_475 c1_i32_477 k0_t4
  let v1431 : Index := Scalar.indexCast arg15
  let c448_1040 : Index := 448#32
  ![0, 1, v1431.toNat, 448]
def k0_off1344 (k0_t4 : Fin k0_t4_loop.trips) : Fin 4 → Nat :=
  let c2_i32_1041 : BitVec 32 := 2#32
  let v1435 : Index := Scalar.indexCast c2_i32_1041
  let c1_i32_1042 : BitVec 32 := 1#32
  let v1436 : Index := Scalar.indexCast c1_i32_1042
  let c0_i32_475 : BitVec 32 := 0#32
  let c1_i32_477 : BitVec 32 := 1#32
  let arg15 : BitVec 32 := Scf.iv c0_i32_475 c1_i32_477 k0_t4
  let v1437 : Index := Scalar.indexCast arg15
  let c464_1043 : Index := 464#32
  ![2, 1, v1437.toNat, 464]
def k0_off1345 (k0_t4 : Fin k0_t4_loop.trips) : Fin 4 → Nat :=
  let c0_i32_1044 : BitVec 32 := 0#32
  let v1441 : Index := Scalar.indexCast c0_i32_1044
  let c1_i32_1045 : BitVec 32 := 1#32
  let v1442 : Index := Scalar.indexCast c1_i32_1045
  let c0_i32_475 : BitVec 32 := 0#32
  let c1_i32_477 : BitVec 32 := 1#32
  let arg15 : BitVec 32 := Scf.iv c0_i32_475 c1_i32_477 k0_t4
  let v1443 : Index := Scalar.indexCast arg15
  let c464_1046 : Index := 464#32
  ![0, 1, v1443.toNat, 464]
def k0_off1346 (k0_t4 : Fin k0_t4_loop.trips) : Fin 4 → Nat :=
  let c2_i32_1047 : BitVec 32 := 2#32
  let v1447 : Index := Scalar.indexCast c2_i32_1047
  let c1_i32_1048 : BitVec 32 := 1#32
  let v1448 : Index := Scalar.indexCast c1_i32_1048
  let c0_i32_475 : BitVec 32 := 0#32
  let c1_i32_477 : BitVec 32 := 1#32
  let arg15 : BitVec 32 := Scf.iv c0_i32_475 c1_i32_477 k0_t4
  let v1449 : Index := Scalar.indexCast arg15
  let c480_1049 : Index := 480#32
  ![2, 1, v1449.toNat, 480]
def k0_off1347 (k0_t4 : Fin k0_t4_loop.trips) : Fin 4 → Nat :=
  let c0_i32_1050 : BitVec 32 := 0#32
  let v1453 : Index := Scalar.indexCast c0_i32_1050
  let c1_i32_1051 : BitVec 32 := 1#32
  let v1454 : Index := Scalar.indexCast c1_i32_1051
  let c0_i32_475 : BitVec 32 := 0#32
  let c1_i32_477 : BitVec 32 := 1#32
  let arg15 : BitVec 32 := Scf.iv c0_i32_475 c1_i32_477 k0_t4
  let v1455 : Index := Scalar.indexCast arg15
  let c480_1052 : Index := 480#32
  ![0, 1, v1455.toNat, 480]
def k0_off1348 (k0_t4 : Fin k0_t4_loop.trips) : Fin 4 → Nat :=
  let c2_i32_1053 : BitVec 32 := 2#32
  let v1459 : Index := Scalar.indexCast c2_i32_1053
  let c1_i32_1054 : BitVec 32 := 1#32
  let v1460 : Index := Scalar.indexCast c1_i32_1054
  let c0_i32_475 : BitVec 32 := 0#32
  let c1_i32_477 : BitVec 32 := 1#32
  let arg15 : BitVec 32 := Scf.iv c0_i32_475 c1_i32_477 k0_t4
  let v1461 : Index := Scalar.indexCast arg15
  let c496_1055 : Index := 496#32
  ![2, 1, v1461.toNat, 496]
def k0_off1349 (k0_t4 : Fin k0_t4_loop.trips) : Fin 4 → Nat :=
  let c0_i32_1056 : BitVec 32 := 0#32
  let v1465 : Index := Scalar.indexCast c0_i32_1056
  let c1_i32_1057 : BitVec 32 := 1#32
  let v1466 : Index := Scalar.indexCast c1_i32_1057
  let c0_i32_475 : BitVec 32 := 0#32
  let c1_i32_477 : BitVec 32 := 1#32
  let arg15 : BitVec 32 := Scf.iv c0_i32_475 c1_i32_477 k0_t4
  let v1467 : Index := Scalar.indexCast arg15
  let c496_1058 : Index := 496#32
  ![0, 1, v1467.toNat, 496]
def k0_off1350 (k0_t4 : Fin k0_t4_loop.trips) : Fin 4 → Nat :=
  let c2_i32_1059 : BitVec 32 := 2#32
  let v1471 : Index := Scalar.indexCast c2_i32_1059
  let c2_i32_1060 : BitVec 32 := 2#32
  let v1472 : Index := Scalar.indexCast c2_i32_1060
  let c0_i32_475 : BitVec 32 := 0#32
  let c1_i32_477 : BitVec 32 := 1#32
  let arg15 : BitVec 32 := Scf.iv c0_i32_475 c1_i32_477 k0_t4
  let v1473 : Index := Scalar.indexCast arg15
  let c0_1061 : Index := 0#32
  ![2, 2, v1473.toNat, 0]
def k0_off1351 (k0_t4 : Fin k0_t4_loop.trips) : Fin 4 → Nat :=
  let c0_i32_1062 : BitVec 32 := 0#32
  let v1477 : Index := Scalar.indexCast c0_i32_1062
  let c2_i32_1063 : BitVec 32 := 2#32
  let v1478 : Index := Scalar.indexCast c2_i32_1063
  let c0_i32_475 : BitVec 32 := 0#32
  let c1_i32_477 : BitVec 32 := 1#32
  let arg15 : BitVec 32 := Scf.iv c0_i32_475 c1_i32_477 k0_t4
  let v1479 : Index := Scalar.indexCast arg15
  let c0_1064 : Index := 0#32
  ![0, 2, v1479.toNat, 0]
def k0_off1352 (k0_t4 : Fin k0_t4_loop.trips) : Fin 4 → Nat :=
  let c2_i32_1065 : BitVec 32 := 2#32
  let v1483 : Index := Scalar.indexCast c2_i32_1065
  let c2_i32_1066 : BitVec 32 := 2#32
  let v1484 : Index := Scalar.indexCast c2_i32_1066
  let c0_i32_475 : BitVec 32 := 0#32
  let c1_i32_477 : BitVec 32 := 1#32
  let arg15 : BitVec 32 := Scf.iv c0_i32_475 c1_i32_477 k0_t4
  let v1485 : Index := Scalar.indexCast arg15
  let c16_1067 : Index := 16#32
  ![2, 2, v1485.toNat, 16]
def k0_off1353 (k0_t4 : Fin k0_t4_loop.trips) : Fin 4 → Nat :=
  let c0_i32_1068 : BitVec 32 := 0#32
  let v1489 : Index := Scalar.indexCast c0_i32_1068
  let c2_i32_1069 : BitVec 32 := 2#32
  let v1490 : Index := Scalar.indexCast c2_i32_1069
  let c0_i32_475 : BitVec 32 := 0#32
  let c1_i32_477 : BitVec 32 := 1#32
  let arg15 : BitVec 32 := Scf.iv c0_i32_475 c1_i32_477 k0_t4
  let v1491 : Index := Scalar.indexCast arg15
  let c16_1070 : Index := 16#32
  ![0, 2, v1491.toNat, 16]
def k0_off1354 (k0_t4 : Fin k0_t4_loop.trips) : Fin 4 → Nat :=
  let c2_i32_1071 : BitVec 32 := 2#32
  let v1495 : Index := Scalar.indexCast c2_i32_1071
  let c2_i32_1072 : BitVec 32 := 2#32
  let v1496 : Index := Scalar.indexCast c2_i32_1072
  let c0_i32_475 : BitVec 32 := 0#32
  let c1_i32_477 : BitVec 32 := 1#32
  let arg15 : BitVec 32 := Scf.iv c0_i32_475 c1_i32_477 k0_t4
  let v1497 : Index := Scalar.indexCast arg15
  let c32_1073 : Index := 32#32
  ![2, 2, v1497.toNat, 32]
def k0_off1355 (k0_t4 : Fin k0_t4_loop.trips) : Fin 4 → Nat :=
  let c0_i32_1074 : BitVec 32 := 0#32
  let v1501 : Index := Scalar.indexCast c0_i32_1074
  let c2_i32_1075 : BitVec 32 := 2#32
  let v1502 : Index := Scalar.indexCast c2_i32_1075
  let c0_i32_475 : BitVec 32 := 0#32
  let c1_i32_477 : BitVec 32 := 1#32
  let arg15 : BitVec 32 := Scf.iv c0_i32_475 c1_i32_477 k0_t4
  let v1503 : Index := Scalar.indexCast arg15
  let c32_1076 : Index := 32#32
  ![0, 2, v1503.toNat, 32]
def k0_off1356 (k0_t4 : Fin k0_t4_loop.trips) : Fin 4 → Nat :=
  let c2_i32_1077 : BitVec 32 := 2#32
  let v1507 : Index := Scalar.indexCast c2_i32_1077
  let c2_i32_1078 : BitVec 32 := 2#32
  let v1508 : Index := Scalar.indexCast c2_i32_1078
  let c0_i32_475 : BitVec 32 := 0#32
  let c1_i32_477 : BitVec 32 := 1#32
  let arg15 : BitVec 32 := Scf.iv c0_i32_475 c1_i32_477 k0_t4
  let v1509 : Index := Scalar.indexCast arg15
  let c48_1079 : Index := 48#32
  ![2, 2, v1509.toNat, 48]
def k0_off1357 (k0_t4 : Fin k0_t4_loop.trips) : Fin 4 → Nat :=
  let c0_i32_1080 : BitVec 32 := 0#32
  let v1513 : Index := Scalar.indexCast c0_i32_1080
  let c2_i32_1081 : BitVec 32 := 2#32
  let v1514 : Index := Scalar.indexCast c2_i32_1081
  let c0_i32_475 : BitVec 32 := 0#32
  let c1_i32_477 : BitVec 32 := 1#32
  let arg15 : BitVec 32 := Scf.iv c0_i32_475 c1_i32_477 k0_t4
  let v1515 : Index := Scalar.indexCast arg15
  let c48_1082 : Index := 48#32
  ![0, 2, v1515.toNat, 48]
def k0_off1358 (k0_t4 : Fin k0_t4_loop.trips) : Fin 4 → Nat :=
  let c2_i32_1083 : BitVec 32 := 2#32
  let v1519 : Index := Scalar.indexCast c2_i32_1083
  let c2_i32_1084 : BitVec 32 := 2#32
  let v1520 : Index := Scalar.indexCast c2_i32_1084
  let c0_i32_475 : BitVec 32 := 0#32
  let c1_i32_477 : BitVec 32 := 1#32
  let arg15 : BitVec 32 := Scf.iv c0_i32_475 c1_i32_477 k0_t4
  let v1521 : Index := Scalar.indexCast arg15
  let c64_1085 : Index := 64#32
  ![2, 2, v1521.toNat, 64]
def k0_off1359 (k0_t4 : Fin k0_t4_loop.trips) : Fin 4 → Nat :=
  let c0_i32_1086 : BitVec 32 := 0#32
  let v1525 : Index := Scalar.indexCast c0_i32_1086
  let c2_i32_1087 : BitVec 32 := 2#32
  let v1526 : Index := Scalar.indexCast c2_i32_1087
  let c0_i32_475 : BitVec 32 := 0#32
  let c1_i32_477 : BitVec 32 := 1#32
  let arg15 : BitVec 32 := Scf.iv c0_i32_475 c1_i32_477 k0_t4
  let v1527 : Index := Scalar.indexCast arg15
  let c64_1088 : Index := 64#32
  ![0, 2, v1527.toNat, 64]
def k0_off1360 (k0_t4 : Fin k0_t4_loop.trips) : Fin 4 → Nat :=
  let c2_i32_1089 : BitVec 32 := 2#32
  let v1531 : Index := Scalar.indexCast c2_i32_1089
  let c2_i32_1090 : BitVec 32 := 2#32
  let v1532 : Index := Scalar.indexCast c2_i32_1090
  let c0_i32_475 : BitVec 32 := 0#32
  let c1_i32_477 : BitVec 32 := 1#32
  let arg15 : BitVec 32 := Scf.iv c0_i32_475 c1_i32_477 k0_t4
  let v1533 : Index := Scalar.indexCast arg15
  let c80_1091 : Index := 80#32
  ![2, 2, v1533.toNat, 80]
def k0_off1361 (k0_t4 : Fin k0_t4_loop.trips) : Fin 4 → Nat :=
  let c0_i32_1092 : BitVec 32 := 0#32
  let v1537 : Index := Scalar.indexCast c0_i32_1092
  let c2_i32_1093 : BitVec 32 := 2#32
  let v1538 : Index := Scalar.indexCast c2_i32_1093
  let c0_i32_475 : BitVec 32 := 0#32
  let c1_i32_477 : BitVec 32 := 1#32
  let arg15 : BitVec 32 := Scf.iv c0_i32_475 c1_i32_477 k0_t4
  let v1539 : Index := Scalar.indexCast arg15
  let c80_1094 : Index := 80#32
  ![0, 2, v1539.toNat, 80]
def k0_off1362 (k0_t4 : Fin k0_t4_loop.trips) : Fin 4 → Nat :=
  let c2_i32_1095 : BitVec 32 := 2#32
  let v1543 : Index := Scalar.indexCast c2_i32_1095
  let c2_i32_1096 : BitVec 32 := 2#32
  let v1544 : Index := Scalar.indexCast c2_i32_1096
  let c0_i32_475 : BitVec 32 := 0#32
  let c1_i32_477 : BitVec 32 := 1#32
  let arg15 : BitVec 32 := Scf.iv c0_i32_475 c1_i32_477 k0_t4
  let v1545 : Index := Scalar.indexCast arg15
  let c96_1097 : Index := 96#32
  ![2, 2, v1545.toNat, 96]
def k0_off1363 (k0_t4 : Fin k0_t4_loop.trips) : Fin 4 → Nat :=
  let c0_i32_1098 : BitVec 32 := 0#32
  let v1549 : Index := Scalar.indexCast c0_i32_1098
  let c2_i32_1099 : BitVec 32 := 2#32
  let v1550 : Index := Scalar.indexCast c2_i32_1099
  let c0_i32_475 : BitVec 32 := 0#32
  let c1_i32_477 : BitVec 32 := 1#32
  let arg15 : BitVec 32 := Scf.iv c0_i32_475 c1_i32_477 k0_t4
  let v1551 : Index := Scalar.indexCast arg15
  let c96_1100 : Index := 96#32
  ![0, 2, v1551.toNat, 96]
def k0_off1364 (k0_t4 : Fin k0_t4_loop.trips) : Fin 4 → Nat :=
  let c2_i32_1101 : BitVec 32 := 2#32
  let v1555 : Index := Scalar.indexCast c2_i32_1101
  let c2_i32_1102 : BitVec 32 := 2#32
  let v1556 : Index := Scalar.indexCast c2_i32_1102
  let c0_i32_475 : BitVec 32 := 0#32
  let c1_i32_477 : BitVec 32 := 1#32
  let arg15 : BitVec 32 := Scf.iv c0_i32_475 c1_i32_477 k0_t4
  let v1557 : Index := Scalar.indexCast arg15
  let c112_1103 : Index := 112#32
  ![2, 2, v1557.toNat, 112]
def k0_off1365 (k0_t4 : Fin k0_t4_loop.trips) : Fin 4 → Nat :=
  let c0_i32_1104 : BitVec 32 := 0#32
  let v1561 : Index := Scalar.indexCast c0_i32_1104
  let c2_i32_1105 : BitVec 32 := 2#32
  let v1562 : Index := Scalar.indexCast c2_i32_1105
  let c0_i32_475 : BitVec 32 := 0#32
  let c1_i32_477 : BitVec 32 := 1#32
  let arg15 : BitVec 32 := Scf.iv c0_i32_475 c1_i32_477 k0_t4
  let v1563 : Index := Scalar.indexCast arg15
  let c112_1106 : Index := 112#32
  ![0, 2, v1563.toNat, 112]
def k0_off1366 (k0_t4 : Fin k0_t4_loop.trips) : Fin 4 → Nat :=
  let c2_i32_1107 : BitVec 32 := 2#32
  let v1567 : Index := Scalar.indexCast c2_i32_1107
  let c2_i32_1108 : BitVec 32 := 2#32
  let v1568 : Index := Scalar.indexCast c2_i32_1108
  let c0_i32_475 : BitVec 32 := 0#32
  let c1_i32_477 : BitVec 32 := 1#32
  let arg15 : BitVec 32 := Scf.iv c0_i32_475 c1_i32_477 k0_t4
  let v1569 : Index := Scalar.indexCast arg15
  let c128_1109 : Index := 128#32
  ![2, 2, v1569.toNat, 128]
def k0_off1367 (k0_t4 : Fin k0_t4_loop.trips) : Fin 4 → Nat :=
  let c0_i32_1110 : BitVec 32 := 0#32
  let v1573 : Index := Scalar.indexCast c0_i32_1110
  let c2_i32_1111 : BitVec 32 := 2#32
  let v1574 : Index := Scalar.indexCast c2_i32_1111
  let c0_i32_475 : BitVec 32 := 0#32
  let c1_i32_477 : BitVec 32 := 1#32
  let arg15 : BitVec 32 := Scf.iv c0_i32_475 c1_i32_477 k0_t4
  let v1575 : Index := Scalar.indexCast arg15
  let c128_1112 : Index := 128#32
  ![0, 2, v1575.toNat, 128]
def k0_off1368 (k0_t4 : Fin k0_t4_loop.trips) : Fin 4 → Nat :=
  let c2_i32_1113 : BitVec 32 := 2#32
  let v1579 : Index := Scalar.indexCast c2_i32_1113
  let c2_i32_1114 : BitVec 32 := 2#32
  let v1580 : Index := Scalar.indexCast c2_i32_1114
  let c0_i32_475 : BitVec 32 := 0#32
  let c1_i32_477 : BitVec 32 := 1#32
  let arg15 : BitVec 32 := Scf.iv c0_i32_475 c1_i32_477 k0_t4
  let v1581 : Index := Scalar.indexCast arg15
  let c144_1115 : Index := 144#32
  ![2, 2, v1581.toNat, 144]
def k0_off1369 (k0_t4 : Fin k0_t4_loop.trips) : Fin 4 → Nat :=
  let c0_i32_1116 : BitVec 32 := 0#32
  let v1585 : Index := Scalar.indexCast c0_i32_1116
  let c2_i32_1117 : BitVec 32 := 2#32
  let v1586 : Index := Scalar.indexCast c2_i32_1117
  let c0_i32_475 : BitVec 32 := 0#32
  let c1_i32_477 : BitVec 32 := 1#32
  let arg15 : BitVec 32 := Scf.iv c0_i32_475 c1_i32_477 k0_t4
  let v1587 : Index := Scalar.indexCast arg15
  let c144_1118 : Index := 144#32
  ![0, 2, v1587.toNat, 144]
def k0_off1370 (k0_t4 : Fin k0_t4_loop.trips) : Fin 4 → Nat :=
  let c2_i32_1119 : BitVec 32 := 2#32
  let v1591 : Index := Scalar.indexCast c2_i32_1119
  let c2_i32_1120 : BitVec 32 := 2#32
  let v1592 : Index := Scalar.indexCast c2_i32_1120
  let c0_i32_475 : BitVec 32 := 0#32
  let c1_i32_477 : BitVec 32 := 1#32
  let arg15 : BitVec 32 := Scf.iv c0_i32_475 c1_i32_477 k0_t4
  let v1593 : Index := Scalar.indexCast arg15
  let c160_1121 : Index := 160#32
  ![2, 2, v1593.toNat, 160]
def k0_off1371 (k0_t4 : Fin k0_t4_loop.trips) : Fin 4 → Nat :=
  let c0_i32_1122 : BitVec 32 := 0#32
  let v1597 : Index := Scalar.indexCast c0_i32_1122
  let c2_i32_1123 : BitVec 32 := 2#32
  let v1598 : Index := Scalar.indexCast c2_i32_1123
  let c0_i32_475 : BitVec 32 := 0#32
  let c1_i32_477 : BitVec 32 := 1#32
  let arg15 : BitVec 32 := Scf.iv c0_i32_475 c1_i32_477 k0_t4
  let v1599 : Index := Scalar.indexCast arg15
  let c160_1124 : Index := 160#32
  ![0, 2, v1599.toNat, 160]
def k0_off1372 (k0_t4 : Fin k0_t4_loop.trips) : Fin 4 → Nat :=
  let c2_i32_1125 : BitVec 32 := 2#32
  let v1603 : Index := Scalar.indexCast c2_i32_1125
  let c2_i32_1126 : BitVec 32 := 2#32
  let v1604 : Index := Scalar.indexCast c2_i32_1126
  let c0_i32_475 : BitVec 32 := 0#32
  let c1_i32_477 : BitVec 32 := 1#32
  let arg15 : BitVec 32 := Scf.iv c0_i32_475 c1_i32_477 k0_t4
  let v1605 : Index := Scalar.indexCast arg15
  let c176_1127 : Index := 176#32
  ![2, 2, v1605.toNat, 176]
def k0_off1373 (k0_t4 : Fin k0_t4_loop.trips) : Fin 4 → Nat :=
  let c0_i32_1128 : BitVec 32 := 0#32
  let v1609 : Index := Scalar.indexCast c0_i32_1128
  let c2_i32_1129 : BitVec 32 := 2#32
  let v1610 : Index := Scalar.indexCast c2_i32_1129
  let c0_i32_475 : BitVec 32 := 0#32
  let c1_i32_477 : BitVec 32 := 1#32
  let arg15 : BitVec 32 := Scf.iv c0_i32_475 c1_i32_477 k0_t4
  let v1611 : Index := Scalar.indexCast arg15
  let c176_1130 : Index := 176#32
  ![0, 2, v1611.toNat, 176]
def k0_off1374 (k0_t4 : Fin k0_t4_loop.trips) : Fin 4 → Nat :=
  let c2_i32_1131 : BitVec 32 := 2#32
  let v1615 : Index := Scalar.indexCast c2_i32_1131
  let c2_i32_1132 : BitVec 32 := 2#32
  let v1616 : Index := Scalar.indexCast c2_i32_1132
  let c0_i32_475 : BitVec 32 := 0#32
  let c1_i32_477 : BitVec 32 := 1#32
  let arg15 : BitVec 32 := Scf.iv c0_i32_475 c1_i32_477 k0_t4
  let v1617 : Index := Scalar.indexCast arg15
  let c192_1133 : Index := 192#32
  ![2, 2, v1617.toNat, 192]
def k0_off1375 (k0_t4 : Fin k0_t4_loop.trips) : Fin 4 → Nat :=
  let c0_i32_1134 : BitVec 32 := 0#32
  let v1621 : Index := Scalar.indexCast c0_i32_1134
  let c2_i32_1135 : BitVec 32 := 2#32
  let v1622 : Index := Scalar.indexCast c2_i32_1135
  let c0_i32_475 : BitVec 32 := 0#32
  let c1_i32_477 : BitVec 32 := 1#32
  let arg15 : BitVec 32 := Scf.iv c0_i32_475 c1_i32_477 k0_t4
  let v1623 : Index := Scalar.indexCast arg15
  let c192_1136 : Index := 192#32
  ![0, 2, v1623.toNat, 192]
def k0_off1376 (k0_t4 : Fin k0_t4_loop.trips) : Fin 4 → Nat :=
  let c2_i32_1137 : BitVec 32 := 2#32
  let v1627 : Index := Scalar.indexCast c2_i32_1137
  let c2_i32_1138 : BitVec 32 := 2#32
  let v1628 : Index := Scalar.indexCast c2_i32_1138
  let c0_i32_475 : BitVec 32 := 0#32
  let c1_i32_477 : BitVec 32 := 1#32
  let arg15 : BitVec 32 := Scf.iv c0_i32_475 c1_i32_477 k0_t4
  let v1629 : Index := Scalar.indexCast arg15
  let c208_1139 : Index := 208#32
  ![2, 2, v1629.toNat, 208]
def k0_off1377 (k0_t4 : Fin k0_t4_loop.trips) : Fin 4 → Nat :=
  let c0_i32_1140 : BitVec 32 := 0#32
  let v1633 : Index := Scalar.indexCast c0_i32_1140
  let c2_i32_1141 : BitVec 32 := 2#32
  let v1634 : Index := Scalar.indexCast c2_i32_1141
  let c0_i32_475 : BitVec 32 := 0#32
  let c1_i32_477 : BitVec 32 := 1#32
  let arg15 : BitVec 32 := Scf.iv c0_i32_475 c1_i32_477 k0_t4
  let v1635 : Index := Scalar.indexCast arg15
  let c208_1142 : Index := 208#32
  ![0, 2, v1635.toNat, 208]
def k0_off1378 (k0_t4 : Fin k0_t4_loop.trips) : Fin 4 → Nat :=
  let c2_i32_1143 : BitVec 32 := 2#32
  let v1639 : Index := Scalar.indexCast c2_i32_1143
  let c2_i32_1144 : BitVec 32 := 2#32
  let v1640 : Index := Scalar.indexCast c2_i32_1144
  let c0_i32_475 : BitVec 32 := 0#32
  let c1_i32_477 : BitVec 32 := 1#32
  let arg15 : BitVec 32 := Scf.iv c0_i32_475 c1_i32_477 k0_t4
  let v1641 : Index := Scalar.indexCast arg15
  let c224_1145 : Index := 224#32
  ![2, 2, v1641.toNat, 224]
def k0_off1379 (k0_t4 : Fin k0_t4_loop.trips) : Fin 4 → Nat :=
  let c0_i32_1146 : BitVec 32 := 0#32
  let v1645 : Index := Scalar.indexCast c0_i32_1146
  let c2_i32_1147 : BitVec 32 := 2#32
  let v1646 : Index := Scalar.indexCast c2_i32_1147
  let c0_i32_475 : BitVec 32 := 0#32
  let c1_i32_477 : BitVec 32 := 1#32
  let arg15 : BitVec 32 := Scf.iv c0_i32_475 c1_i32_477 k0_t4
  let v1647 : Index := Scalar.indexCast arg15
  let c224_1148 : Index := 224#32
  ![0, 2, v1647.toNat, 224]
def k0_off1380 (k0_t4 : Fin k0_t4_loop.trips) : Fin 4 → Nat :=
  let c2_i32_1149 : BitVec 32 := 2#32
  let v1651 : Index := Scalar.indexCast c2_i32_1149
  let c2_i32_1150 : BitVec 32 := 2#32
  let v1652 : Index := Scalar.indexCast c2_i32_1150
  let c0_i32_475 : BitVec 32 := 0#32
  let c1_i32_477 : BitVec 32 := 1#32
  let arg15 : BitVec 32 := Scf.iv c0_i32_475 c1_i32_477 k0_t4
  let v1653 : Index := Scalar.indexCast arg15
  let c240_1151 : Index := 240#32
  ![2, 2, v1653.toNat, 240]
def k0_off1381 (k0_t4 : Fin k0_t4_loop.trips) : Fin 4 → Nat :=
  let c0_i32_1152 : BitVec 32 := 0#32
  let v1657 : Index := Scalar.indexCast c0_i32_1152
  let c2_i32_1153 : BitVec 32 := 2#32
  let v1658 : Index := Scalar.indexCast c2_i32_1153
  let c0_i32_475 : BitVec 32 := 0#32
  let c1_i32_477 : BitVec 32 := 1#32
  let arg15 : BitVec 32 := Scf.iv c0_i32_475 c1_i32_477 k0_t4
  let v1659 : Index := Scalar.indexCast arg15
  let c240_1154 : Index := 240#32
  ![0, 2, v1659.toNat, 240]
def k0_off1382 (k0_t4 : Fin k0_t4_loop.trips) : Fin 4 → Nat :=
  let c2_i32_1155 : BitVec 32 := 2#32
  let v1663 : Index := Scalar.indexCast c2_i32_1155
  let c2_i32_1156 : BitVec 32 := 2#32
  let v1664 : Index := Scalar.indexCast c2_i32_1156
  let c0_i32_475 : BitVec 32 := 0#32
  let c1_i32_477 : BitVec 32 := 1#32
  let arg15 : BitVec 32 := Scf.iv c0_i32_475 c1_i32_477 k0_t4
  let v1665 : Index := Scalar.indexCast arg15
  let c256_1157 : Index := 256#32
  ![2, 2, v1665.toNat, 256]
def k0_off1383 (k0_t4 : Fin k0_t4_loop.trips) : Fin 4 → Nat :=
  let c0_i32_1158 : BitVec 32 := 0#32
  let v1669 : Index := Scalar.indexCast c0_i32_1158
  let c2_i32_1159 : BitVec 32 := 2#32
  let v1670 : Index := Scalar.indexCast c2_i32_1159
  let c0_i32_475 : BitVec 32 := 0#32
  let c1_i32_477 : BitVec 32 := 1#32
  let arg15 : BitVec 32 := Scf.iv c0_i32_475 c1_i32_477 k0_t4
  let v1671 : Index := Scalar.indexCast arg15
  let c256_1160 : Index := 256#32
  ![0, 2, v1671.toNat, 256]
def k0_off1384 (k0_t4 : Fin k0_t4_loop.trips) : Fin 4 → Nat :=
  let c2_i32_1161 : BitVec 32 := 2#32
  let v1675 : Index := Scalar.indexCast c2_i32_1161
  let c2_i32_1162 : BitVec 32 := 2#32
  let v1676 : Index := Scalar.indexCast c2_i32_1162
  let c0_i32_475 : BitVec 32 := 0#32
  let c1_i32_477 : BitVec 32 := 1#32
  let arg15 : BitVec 32 := Scf.iv c0_i32_475 c1_i32_477 k0_t4
  let v1677 : Index := Scalar.indexCast arg15
  let c272_1163 : Index := 272#32
  ![2, 2, v1677.toNat, 272]
def k0_off1385 (k0_t4 : Fin k0_t4_loop.trips) : Fin 4 → Nat :=
  let c0_i32_1164 : BitVec 32 := 0#32
  let v1681 : Index := Scalar.indexCast c0_i32_1164
  let c2_i32_1165 : BitVec 32 := 2#32
  let v1682 : Index := Scalar.indexCast c2_i32_1165
  let c0_i32_475 : BitVec 32 := 0#32
  let c1_i32_477 : BitVec 32 := 1#32
  let arg15 : BitVec 32 := Scf.iv c0_i32_475 c1_i32_477 k0_t4
  let v1683 : Index := Scalar.indexCast arg15
  let c272_1166 : Index := 272#32
  ![0, 2, v1683.toNat, 272]
def k0_off1386 (k0_t4 : Fin k0_t4_loop.trips) : Fin 4 → Nat :=
  let c2_i32_1167 : BitVec 32 := 2#32
  let v1687 : Index := Scalar.indexCast c2_i32_1167
  let c2_i32_1168 : BitVec 32 := 2#32
  let v1688 : Index := Scalar.indexCast c2_i32_1168
  let c0_i32_475 : BitVec 32 := 0#32
  let c1_i32_477 : BitVec 32 := 1#32
  let arg15 : BitVec 32 := Scf.iv c0_i32_475 c1_i32_477 k0_t4
  let v1689 : Index := Scalar.indexCast arg15
  let c288_1169 : Index := 288#32
  ![2, 2, v1689.toNat, 288]
def k0_off1387 (k0_t4 : Fin k0_t4_loop.trips) : Fin 4 → Nat :=
  let c0_i32_1170 : BitVec 32 := 0#32
  let v1693 : Index := Scalar.indexCast c0_i32_1170
  let c2_i32_1171 : BitVec 32 := 2#32
  let v1694 : Index := Scalar.indexCast c2_i32_1171
  let c0_i32_475 : BitVec 32 := 0#32
  let c1_i32_477 : BitVec 32 := 1#32
  let arg15 : BitVec 32 := Scf.iv c0_i32_475 c1_i32_477 k0_t4
  let v1695 : Index := Scalar.indexCast arg15
  let c288_1172 : Index := 288#32
  ![0, 2, v1695.toNat, 288]
def k0_off1388 (k0_t4 : Fin k0_t4_loop.trips) : Fin 4 → Nat :=
  let c2_i32_1173 : BitVec 32 := 2#32
  let v1699 : Index := Scalar.indexCast c2_i32_1173
  let c2_i32_1174 : BitVec 32 := 2#32
  let v1700 : Index := Scalar.indexCast c2_i32_1174
  let c0_i32_475 : BitVec 32 := 0#32
  let c1_i32_477 : BitVec 32 := 1#32
  let arg15 : BitVec 32 := Scf.iv c0_i32_475 c1_i32_477 k0_t4
  let v1701 : Index := Scalar.indexCast arg15
  let c304_1175 : Index := 304#32
  ![2, 2, v1701.toNat, 304]
def k0_off1389 (k0_t4 : Fin k0_t4_loop.trips) : Fin 4 → Nat :=
  let c0_i32_1176 : BitVec 32 := 0#32
  let v1705 : Index := Scalar.indexCast c0_i32_1176
  let c2_i32_1177 : BitVec 32 := 2#32
  let v1706 : Index := Scalar.indexCast c2_i32_1177
  let c0_i32_475 : BitVec 32 := 0#32
  let c1_i32_477 : BitVec 32 := 1#32
  let arg15 : BitVec 32 := Scf.iv c0_i32_475 c1_i32_477 k0_t4
  let v1707 : Index := Scalar.indexCast arg15
  let c304_1178 : Index := 304#32
  ![0, 2, v1707.toNat, 304]
def k0_off1390 (k0_t4 : Fin k0_t4_loop.trips) : Fin 4 → Nat :=
  let c2_i32_1179 : BitVec 32 := 2#32
  let v1711 : Index := Scalar.indexCast c2_i32_1179
  let c2_i32_1180 : BitVec 32 := 2#32
  let v1712 : Index := Scalar.indexCast c2_i32_1180
  let c0_i32_475 : BitVec 32 := 0#32
  let c1_i32_477 : BitVec 32 := 1#32
  let arg15 : BitVec 32 := Scf.iv c0_i32_475 c1_i32_477 k0_t4
  let v1713 : Index := Scalar.indexCast arg15
  let c320_1181 : Index := 320#32
  ![2, 2, v1713.toNat, 320]
def k0_off1391 (k0_t4 : Fin k0_t4_loop.trips) : Fin 4 → Nat :=
  let c0_i32_1182 : BitVec 32 := 0#32
  let v1717 : Index := Scalar.indexCast c0_i32_1182
  let c2_i32_1183 : BitVec 32 := 2#32
  let v1718 : Index := Scalar.indexCast c2_i32_1183
  let c0_i32_475 : BitVec 32 := 0#32
  let c1_i32_477 : BitVec 32 := 1#32
  let arg15 : BitVec 32 := Scf.iv c0_i32_475 c1_i32_477 k0_t4
  let v1719 : Index := Scalar.indexCast arg15
  let c320_1184 : Index := 320#32
  ![0, 2, v1719.toNat, 320]
def k0_off1392 (k0_t4 : Fin k0_t4_loop.trips) : Fin 4 → Nat :=
  let c2_i32_1185 : BitVec 32 := 2#32
  let v1723 : Index := Scalar.indexCast c2_i32_1185
  let c2_i32_1186 : BitVec 32 := 2#32
  let v1724 : Index := Scalar.indexCast c2_i32_1186
  let c0_i32_475 : BitVec 32 := 0#32
  let c1_i32_477 : BitVec 32 := 1#32
  let arg15 : BitVec 32 := Scf.iv c0_i32_475 c1_i32_477 k0_t4
  let v1725 : Index := Scalar.indexCast arg15
  let c336_1187 : Index := 336#32
  ![2, 2, v1725.toNat, 336]
def k0_off1393 (k0_t4 : Fin k0_t4_loop.trips) : Fin 4 → Nat :=
  let c0_i32_1188 : BitVec 32 := 0#32
  let v1729 : Index := Scalar.indexCast c0_i32_1188
  let c2_i32_1189 : BitVec 32 := 2#32
  let v1730 : Index := Scalar.indexCast c2_i32_1189
  let c0_i32_475 : BitVec 32 := 0#32
  let c1_i32_477 : BitVec 32 := 1#32
  let arg15 : BitVec 32 := Scf.iv c0_i32_475 c1_i32_477 k0_t4
  let v1731 : Index := Scalar.indexCast arg15
  let c336_1190 : Index := 336#32
  ![0, 2, v1731.toNat, 336]
def k0_off1394 (k0_t4 : Fin k0_t4_loop.trips) : Fin 4 → Nat :=
  let c2_i32_1191 : BitVec 32 := 2#32
  let v1735 : Index := Scalar.indexCast c2_i32_1191
  let c2_i32_1192 : BitVec 32 := 2#32
  let v1736 : Index := Scalar.indexCast c2_i32_1192
  let c0_i32_475 : BitVec 32 := 0#32
  let c1_i32_477 : BitVec 32 := 1#32
  let arg15 : BitVec 32 := Scf.iv c0_i32_475 c1_i32_477 k0_t4
  let v1737 : Index := Scalar.indexCast arg15
  let c352_1193 : Index := 352#32
  ![2, 2, v1737.toNat, 352]
def k0_off1395 (k0_t4 : Fin k0_t4_loop.trips) : Fin 4 → Nat :=
  let c0_i32_1194 : BitVec 32 := 0#32
  let v1741 : Index := Scalar.indexCast c0_i32_1194
  let c2_i32_1195 : BitVec 32 := 2#32
  let v1742 : Index := Scalar.indexCast c2_i32_1195
  let c0_i32_475 : BitVec 32 := 0#32
  let c1_i32_477 : BitVec 32 := 1#32
  let arg15 : BitVec 32 := Scf.iv c0_i32_475 c1_i32_477 k0_t4
  let v1743 : Index := Scalar.indexCast arg15
  let c352_1196 : Index := 352#32
  ![0, 2, v1743.toNat, 352]
def k0_off1396 (k0_t4 : Fin k0_t4_loop.trips) : Fin 4 → Nat :=
  let c2_i32_1197 : BitVec 32 := 2#32
  let v1747 : Index := Scalar.indexCast c2_i32_1197
  let c2_i32_1198 : BitVec 32 := 2#32
  let v1748 : Index := Scalar.indexCast c2_i32_1198
  let c0_i32_475 : BitVec 32 := 0#32
  let c1_i32_477 : BitVec 32 := 1#32
  let arg15 : BitVec 32 := Scf.iv c0_i32_475 c1_i32_477 k0_t4
  let v1749 : Index := Scalar.indexCast arg15
  let c368_1199 : Index := 368#32
  ![2, 2, v1749.toNat, 368]
def k0_off1397 (k0_t4 : Fin k0_t4_loop.trips) : Fin 4 → Nat :=
  let c0_i32_1200 : BitVec 32 := 0#32
  let v1753 : Index := Scalar.indexCast c0_i32_1200
  let c2_i32_1201 : BitVec 32 := 2#32
  let v1754 : Index := Scalar.indexCast c2_i32_1201
  let c0_i32_475 : BitVec 32 := 0#32
  let c1_i32_477 : BitVec 32 := 1#32
  let arg15 : BitVec 32 := Scf.iv c0_i32_475 c1_i32_477 k0_t4
  let v1755 : Index := Scalar.indexCast arg15
  let c368_1202 : Index := 368#32
  ![0, 2, v1755.toNat, 368]
def k0_off1398 (k0_t4 : Fin k0_t4_loop.trips) : Fin 4 → Nat :=
  let c2_i32_1203 : BitVec 32 := 2#32
  let v1759 : Index := Scalar.indexCast c2_i32_1203
  let c2_i32_1204 : BitVec 32 := 2#32
  let v1760 : Index := Scalar.indexCast c2_i32_1204
  let c0_i32_475 : BitVec 32 := 0#32
  let c1_i32_477 : BitVec 32 := 1#32
  let arg15 : BitVec 32 := Scf.iv c0_i32_475 c1_i32_477 k0_t4
  let v1761 : Index := Scalar.indexCast arg15
  let c384_1205 : Index := 384#32
  ![2, 2, v1761.toNat, 384]
def k0_off1399 (k0_t4 : Fin k0_t4_loop.trips) : Fin 4 → Nat :=
  let c0_i32_1206 : BitVec 32 := 0#32
  let v1765 : Index := Scalar.indexCast c0_i32_1206
  let c2_i32_1207 : BitVec 32 := 2#32
  let v1766 : Index := Scalar.indexCast c2_i32_1207
  let c0_i32_475 : BitVec 32 := 0#32
  let c1_i32_477 : BitVec 32 := 1#32
  let arg15 : BitVec 32 := Scf.iv c0_i32_475 c1_i32_477 k0_t4
  let v1767 : Index := Scalar.indexCast arg15
  let c384_1208 : Index := 384#32
  ![0, 2, v1767.toNat, 384]
def k0_off1400 (k0_t4 : Fin k0_t4_loop.trips) : Fin 4 → Nat :=
  let c2_i32_1209 : BitVec 32 := 2#32
  let v1771 : Index := Scalar.indexCast c2_i32_1209
  let c2_i32_1210 : BitVec 32 := 2#32
  let v1772 : Index := Scalar.indexCast c2_i32_1210
  let c0_i32_475 : BitVec 32 := 0#32
  let c1_i32_477 : BitVec 32 := 1#32
  let arg15 : BitVec 32 := Scf.iv c0_i32_475 c1_i32_477 k0_t4
  let v1773 : Index := Scalar.indexCast arg15
  let c400_1211 : Index := 400#32
  ![2, 2, v1773.toNat, 400]
def k0_off1401 (k0_t4 : Fin k0_t4_loop.trips) : Fin 4 → Nat :=
  let c0_i32_1212 : BitVec 32 := 0#32
  let v1777 : Index := Scalar.indexCast c0_i32_1212
  let c2_i32_1213 : BitVec 32 := 2#32
  let v1778 : Index := Scalar.indexCast c2_i32_1213
  let c0_i32_475 : BitVec 32 := 0#32
  let c1_i32_477 : BitVec 32 := 1#32
  let arg15 : BitVec 32 := Scf.iv c0_i32_475 c1_i32_477 k0_t4
  let v1779 : Index := Scalar.indexCast arg15
  let c400_1214 : Index := 400#32
  ![0, 2, v1779.toNat, 400]
def k0_off1402 (k0_t4 : Fin k0_t4_loop.trips) : Fin 4 → Nat :=
  let c2_i32_1215 : BitVec 32 := 2#32
  let v1783 : Index := Scalar.indexCast c2_i32_1215
  let c2_i32_1216 : BitVec 32 := 2#32
  let v1784 : Index := Scalar.indexCast c2_i32_1216
  let c0_i32_475 : BitVec 32 := 0#32
  let c1_i32_477 : BitVec 32 := 1#32
  let arg15 : BitVec 32 := Scf.iv c0_i32_475 c1_i32_477 k0_t4
  let v1785 : Index := Scalar.indexCast arg15
  let c416_1217 : Index := 416#32
  ![2, 2, v1785.toNat, 416]
def k0_off1403 (k0_t4 : Fin k0_t4_loop.trips) : Fin 4 → Nat :=
  let c0_i32_1218 : BitVec 32 := 0#32
  let v1789 : Index := Scalar.indexCast c0_i32_1218
  let c2_i32_1219 : BitVec 32 := 2#32
  let v1790 : Index := Scalar.indexCast c2_i32_1219
  let c0_i32_475 : BitVec 32 := 0#32
  let c1_i32_477 : BitVec 32 := 1#32
  let arg15 : BitVec 32 := Scf.iv c0_i32_475 c1_i32_477 k0_t4
  let v1791 : Index := Scalar.indexCast arg15
  let c416_1220 : Index := 416#32
  ![0, 2, v1791.toNat, 416]
def k0_off1404 (k0_t4 : Fin k0_t4_loop.trips) : Fin 4 → Nat :=
  let c2_i32_1221 : BitVec 32 := 2#32
  let v1795 : Index := Scalar.indexCast c2_i32_1221
  let c2_i32_1222 : BitVec 32 := 2#32
  let v1796 : Index := Scalar.indexCast c2_i32_1222
  let c0_i32_475 : BitVec 32 := 0#32
  let c1_i32_477 : BitVec 32 := 1#32
  let arg15 : BitVec 32 := Scf.iv c0_i32_475 c1_i32_477 k0_t4
  let v1797 : Index := Scalar.indexCast arg15
  let c432_1223 : Index := 432#32
  ![2, 2, v1797.toNat, 432]
def k0_off1405 (k0_t4 : Fin k0_t4_loop.trips) : Fin 4 → Nat :=
  let c0_i32_1224 : BitVec 32 := 0#32
  let v1801 : Index := Scalar.indexCast c0_i32_1224
  let c2_i32_1225 : BitVec 32 := 2#32
  let v1802 : Index := Scalar.indexCast c2_i32_1225
  let c0_i32_475 : BitVec 32 := 0#32
  let c1_i32_477 : BitVec 32 := 1#32
  let arg15 : BitVec 32 := Scf.iv c0_i32_475 c1_i32_477 k0_t4
  let v1803 : Index := Scalar.indexCast arg15
  let c432_1226 : Index := 432#32
  ![0, 2, v1803.toNat, 432]
def k0_off1406 (k0_t4 : Fin k0_t4_loop.trips) : Fin 4 → Nat :=
  let c2_i32_1227 : BitVec 32 := 2#32
  let v1807 : Index := Scalar.indexCast c2_i32_1227
  let c2_i32_1228 : BitVec 32 := 2#32
  let v1808 : Index := Scalar.indexCast c2_i32_1228
  let c0_i32_475 : BitVec 32 := 0#32
  let c1_i32_477 : BitVec 32 := 1#32
  let arg15 : BitVec 32 := Scf.iv c0_i32_475 c1_i32_477 k0_t4
  let v1809 : Index := Scalar.indexCast arg15
  let c448_1229 : Index := 448#32
  ![2, 2, v1809.toNat, 448]
def k0_off1407 (k0_t4 : Fin k0_t4_loop.trips) : Fin 4 → Nat :=
  let c0_i32_1230 : BitVec 32 := 0#32
  let v1813 : Index := Scalar.indexCast c0_i32_1230
  let c2_i32_1231 : BitVec 32 := 2#32
  let v1814 : Index := Scalar.indexCast c2_i32_1231
  let c0_i32_475 : BitVec 32 := 0#32
  let c1_i32_477 : BitVec 32 := 1#32
  let arg15 : BitVec 32 := Scf.iv c0_i32_475 c1_i32_477 k0_t4
  let v1815 : Index := Scalar.indexCast arg15
  let c448_1232 : Index := 448#32
  ![0, 2, v1815.toNat, 448]
def k0_off1408 (k0_t4 : Fin k0_t4_loop.trips) : Fin 4 → Nat :=
  let c2_i32_1233 : BitVec 32 := 2#32
  let v1819 : Index := Scalar.indexCast c2_i32_1233
  let c2_i32_1234 : BitVec 32 := 2#32
  let v1820 : Index := Scalar.indexCast c2_i32_1234
  let c0_i32_475 : BitVec 32 := 0#32
  let c1_i32_477 : BitVec 32 := 1#32
  let arg15 : BitVec 32 := Scf.iv c0_i32_475 c1_i32_477 k0_t4
  let v1821 : Index := Scalar.indexCast arg15
  let c464_1235 : Index := 464#32
  ![2, 2, v1821.toNat, 464]
def k0_off1409 (k0_t4 : Fin k0_t4_loop.trips) : Fin 4 → Nat :=
  let c0_i32_1236 : BitVec 32 := 0#32
  let v1825 : Index := Scalar.indexCast c0_i32_1236
  let c2_i32_1237 : BitVec 32 := 2#32
  let v1826 : Index := Scalar.indexCast c2_i32_1237
  let c0_i32_475 : BitVec 32 := 0#32
  let c1_i32_477 : BitVec 32 := 1#32
  let arg15 : BitVec 32 := Scf.iv c0_i32_475 c1_i32_477 k0_t4
  let v1827 : Index := Scalar.indexCast arg15
  let c464_1238 : Index := 464#32
  ![0, 2, v1827.toNat, 464]
def k0_off1410 (k0_t4 : Fin k0_t4_loop.trips) : Fin 4 → Nat :=
  let c2_i32_1239 : BitVec 32 := 2#32
  let v1831 : Index := Scalar.indexCast c2_i32_1239
  let c2_i32_1240 : BitVec 32 := 2#32
  let v1832 : Index := Scalar.indexCast c2_i32_1240
  let c0_i32_475 : BitVec 32 := 0#32
  let c1_i32_477 : BitVec 32 := 1#32
  let arg15 : BitVec 32 := Scf.iv c0_i32_475 c1_i32_477 k0_t4
  let v1833 : Index := Scalar.indexCast arg15
  let c480_1241 : Index := 480#32
  ![2, 2, v1833.toNat, 480]
def k0_off1411 (k0_t4 : Fin k0_t4_loop.trips) : Fin 4 → Nat :=
  let c0_i32_1242 : BitVec 32 := 0#32
  let v1837 : Index := Scalar.indexCast c0_i32_1242
  let c2_i32_1243 : BitVec 32 := 2#32
  let v1838 : Index := Scalar.indexCast c2_i32_1243
  let c0_i32_475 : BitVec 32 := 0#32
  let c1_i32_477 : BitVec 32 := 1#32
  let arg15 : BitVec 32 := Scf.iv c0_i32_475 c1_i32_477 k0_t4
  let v1839 : Index := Scalar.indexCast arg15
  let c480_1244 : Index := 480#32
  ![0, 2, v1839.toNat, 480]
def k0_off1412 (k0_t4 : Fin k0_t4_loop.trips) : Fin 4 → Nat :=
  let c2_i32_1245 : BitVec 32 := 2#32
  let v1843 : Index := Scalar.indexCast c2_i32_1245
  let c2_i32_1246 : BitVec 32 := 2#32
  let v1844 : Index := Scalar.indexCast c2_i32_1246
  let c0_i32_475 : BitVec 32 := 0#32
  let c1_i32_477 : BitVec 32 := 1#32
  let arg15 : BitVec 32 := Scf.iv c0_i32_475 c1_i32_477 k0_t4
  let v1845 : Index := Scalar.indexCast arg15
  let c496_1247 : Index := 496#32
  ![2, 2, v1845.toNat, 496]
def k0_off1413 (k0_t4 : Fin k0_t4_loop.trips) : Fin 4 → Nat :=
  let c0_i32_1248 : BitVec 32 := 0#32
  let v1849 : Index := Scalar.indexCast c0_i32_1248
  let c2_i32_1249 : BitVec 32 := 2#32
  let v1850 : Index := Scalar.indexCast c2_i32_1249
  let c0_i32_475 : BitVec 32 := 0#32
  let c1_i32_477 : BitVec 32 := 1#32
  let arg15 : BitVec 32 := Scf.iv c0_i32_475 c1_i32_477 k0_t4
  let v1851 : Index := Scalar.indexCast arg15
  let c496_1250 : Index := 496#32
  ![0, 2, v1851.toNat, 496]
def k0_off1414 (k0_t4 : Fin k0_t4_loop.trips) : Fin 4 → Nat :=
  let c2_i32_1251 : BitVec 32 := 2#32
  let v1855 : Index := Scalar.indexCast c2_i32_1251
  let c3_i32_1252 : BitVec 32 := 3#32
  let v1856 : Index := Scalar.indexCast c3_i32_1252
  let c0_i32_475 : BitVec 32 := 0#32
  let c1_i32_477 : BitVec 32 := 1#32
  let arg15 : BitVec 32 := Scf.iv c0_i32_475 c1_i32_477 k0_t4
  let v1857 : Index := Scalar.indexCast arg15
  let c0_1253 : Index := 0#32
  ![2, 3, v1857.toNat, 0]
def k0_off1415 (k0_t4 : Fin k0_t4_loop.trips) : Fin 4 → Nat :=
  let c0_i32_1254 : BitVec 32 := 0#32
  let v1861 : Index := Scalar.indexCast c0_i32_1254
  let c3_i32_1255 : BitVec 32 := 3#32
  let v1862 : Index := Scalar.indexCast c3_i32_1255
  let c0_i32_475 : BitVec 32 := 0#32
  let c1_i32_477 : BitVec 32 := 1#32
  let arg15 : BitVec 32 := Scf.iv c0_i32_475 c1_i32_477 k0_t4
  let v1863 : Index := Scalar.indexCast arg15
  let c0_1256 : Index := 0#32
  ![0, 3, v1863.toNat, 0]
def k0_off1416 (k0_t4 : Fin k0_t4_loop.trips) : Fin 4 → Nat :=
  let c2_i32_1257 : BitVec 32 := 2#32
  let v1867 : Index := Scalar.indexCast c2_i32_1257
  let c3_i32_1258 : BitVec 32 := 3#32
  let v1868 : Index := Scalar.indexCast c3_i32_1258
  let c0_i32_475 : BitVec 32 := 0#32
  let c1_i32_477 : BitVec 32 := 1#32
  let arg15 : BitVec 32 := Scf.iv c0_i32_475 c1_i32_477 k0_t4
  let v1869 : Index := Scalar.indexCast arg15
  let c16_1259 : Index := 16#32
  ![2, 3, v1869.toNat, 16]
def k0_off1417 (k0_t4 : Fin k0_t4_loop.trips) : Fin 4 → Nat :=
  let c0_i32_1260 : BitVec 32 := 0#32
  let v1873 : Index := Scalar.indexCast c0_i32_1260
  let c3_i32_1261 : BitVec 32 := 3#32
  let v1874 : Index := Scalar.indexCast c3_i32_1261
  let c0_i32_475 : BitVec 32 := 0#32
  let c1_i32_477 : BitVec 32 := 1#32
  let arg15 : BitVec 32 := Scf.iv c0_i32_475 c1_i32_477 k0_t4
  let v1875 : Index := Scalar.indexCast arg15
  let c16_1262 : Index := 16#32
  ![0, 3, v1875.toNat, 16]
def k0_off1418 (k0_t4 : Fin k0_t4_loop.trips) : Fin 4 → Nat :=
  let c2_i32_1263 : BitVec 32 := 2#32
  let v1879 : Index := Scalar.indexCast c2_i32_1263
  let c3_i32_1264 : BitVec 32 := 3#32
  let v1880 : Index := Scalar.indexCast c3_i32_1264
  let c0_i32_475 : BitVec 32 := 0#32
  let c1_i32_477 : BitVec 32 := 1#32
  let arg15 : BitVec 32 := Scf.iv c0_i32_475 c1_i32_477 k0_t4
  let v1881 : Index := Scalar.indexCast arg15
  let c32_1265 : Index := 32#32
  ![2, 3, v1881.toNat, 32]
def k0_off1419 (k0_t4 : Fin k0_t4_loop.trips) : Fin 4 → Nat :=
  let c0_i32_1266 : BitVec 32 := 0#32
  let v1885 : Index := Scalar.indexCast c0_i32_1266
  let c3_i32_1267 : BitVec 32 := 3#32
  let v1886 : Index := Scalar.indexCast c3_i32_1267
  let c0_i32_475 : BitVec 32 := 0#32
  let c1_i32_477 : BitVec 32 := 1#32
  let arg15 : BitVec 32 := Scf.iv c0_i32_475 c1_i32_477 k0_t4
  let v1887 : Index := Scalar.indexCast arg15
  let c32_1268 : Index := 32#32
  ![0, 3, v1887.toNat, 32]
def k0_off1420 (k0_t4 : Fin k0_t4_loop.trips) : Fin 4 → Nat :=
  let c2_i32_1269 : BitVec 32 := 2#32
  let v1891 : Index := Scalar.indexCast c2_i32_1269
  let c3_i32_1270 : BitVec 32 := 3#32
  let v1892 : Index := Scalar.indexCast c3_i32_1270
  let c0_i32_475 : BitVec 32 := 0#32
  let c1_i32_477 : BitVec 32 := 1#32
  let arg15 : BitVec 32 := Scf.iv c0_i32_475 c1_i32_477 k0_t4
  let v1893 : Index := Scalar.indexCast arg15
  let c48_1271 : Index := 48#32
  ![2, 3, v1893.toNat, 48]
def k0_off1421 (k0_t4 : Fin k0_t4_loop.trips) : Fin 4 → Nat :=
  let c0_i32_1272 : BitVec 32 := 0#32
  let v1897 : Index := Scalar.indexCast c0_i32_1272
  let c3_i32_1273 : BitVec 32 := 3#32
  let v1898 : Index := Scalar.indexCast c3_i32_1273
  let c0_i32_475 : BitVec 32 := 0#32
  let c1_i32_477 : BitVec 32 := 1#32
  let arg15 : BitVec 32 := Scf.iv c0_i32_475 c1_i32_477 k0_t4
  let v1899 : Index := Scalar.indexCast arg15
  let c48_1274 : Index := 48#32
  ![0, 3, v1899.toNat, 48]
def k0_off1422 (k0_t4 : Fin k0_t4_loop.trips) : Fin 4 → Nat :=
  let c2_i32_1275 : BitVec 32 := 2#32
  let v1903 : Index := Scalar.indexCast c2_i32_1275
  let c3_i32_1276 : BitVec 32 := 3#32
  let v1904 : Index := Scalar.indexCast c3_i32_1276
  let c0_i32_475 : BitVec 32 := 0#32
  let c1_i32_477 : BitVec 32 := 1#32
  let arg15 : BitVec 32 := Scf.iv c0_i32_475 c1_i32_477 k0_t4
  let v1905 : Index := Scalar.indexCast arg15
  let c64_1277 : Index := 64#32
  ![2, 3, v1905.toNat, 64]
def k0_off1423 (k0_t4 : Fin k0_t4_loop.trips) : Fin 4 → Nat :=
  let c0_i32_1278 : BitVec 32 := 0#32
  let v1909 : Index := Scalar.indexCast c0_i32_1278
  let c3_i32_1279 : BitVec 32 := 3#32
  let v1910 : Index := Scalar.indexCast c3_i32_1279
  let c0_i32_475 : BitVec 32 := 0#32
  let c1_i32_477 : BitVec 32 := 1#32
  let arg15 : BitVec 32 := Scf.iv c0_i32_475 c1_i32_477 k0_t4
  let v1911 : Index := Scalar.indexCast arg15
  let c64_1280 : Index := 64#32
  ![0, 3, v1911.toNat, 64]
def k0_off1424 (k0_t4 : Fin k0_t4_loop.trips) : Fin 4 → Nat :=
  let c2_i32_1281 : BitVec 32 := 2#32
  let v1915 : Index := Scalar.indexCast c2_i32_1281
  let c3_i32_1282 : BitVec 32 := 3#32
  let v1916 : Index := Scalar.indexCast c3_i32_1282
  let c0_i32_475 : BitVec 32 := 0#32
  let c1_i32_477 : BitVec 32 := 1#32
  let arg15 : BitVec 32 := Scf.iv c0_i32_475 c1_i32_477 k0_t4
  let v1917 : Index := Scalar.indexCast arg15
  let c80_1283 : Index := 80#32
  ![2, 3, v1917.toNat, 80]
def k0_off1425 (k0_t4 : Fin k0_t4_loop.trips) : Fin 4 → Nat :=
  let c0_i32_1284 : BitVec 32 := 0#32
  let v1921 : Index := Scalar.indexCast c0_i32_1284
  let c3_i32_1285 : BitVec 32 := 3#32
  let v1922 : Index := Scalar.indexCast c3_i32_1285
  let c0_i32_475 : BitVec 32 := 0#32
  let c1_i32_477 : BitVec 32 := 1#32
  let arg15 : BitVec 32 := Scf.iv c0_i32_475 c1_i32_477 k0_t4
  let v1923 : Index := Scalar.indexCast arg15
  let c80_1286 : Index := 80#32
  ![0, 3, v1923.toNat, 80]
def k0_off1426 (k0_t4 : Fin k0_t4_loop.trips) : Fin 4 → Nat :=
  let c2_i32_1287 : BitVec 32 := 2#32
  let v1927 : Index := Scalar.indexCast c2_i32_1287
  let c3_i32_1288 : BitVec 32 := 3#32
  let v1928 : Index := Scalar.indexCast c3_i32_1288
  let c0_i32_475 : BitVec 32 := 0#32
  let c1_i32_477 : BitVec 32 := 1#32
  let arg15 : BitVec 32 := Scf.iv c0_i32_475 c1_i32_477 k0_t4
  let v1929 : Index := Scalar.indexCast arg15
  let c96_1289 : Index := 96#32
  ![2, 3, v1929.toNat, 96]
def k0_off1427 (k0_t4 : Fin k0_t4_loop.trips) : Fin 4 → Nat :=
  let c0_i32_1290 : BitVec 32 := 0#32
  let v1933 : Index := Scalar.indexCast c0_i32_1290
  let c3_i32_1291 : BitVec 32 := 3#32
  let v1934 : Index := Scalar.indexCast c3_i32_1291
  let c0_i32_475 : BitVec 32 := 0#32
  let c1_i32_477 : BitVec 32 := 1#32
  let arg15 : BitVec 32 := Scf.iv c0_i32_475 c1_i32_477 k0_t4
  let v1935 : Index := Scalar.indexCast arg15
  let c96_1292 : Index := 96#32
  ![0, 3, v1935.toNat, 96]
def k0_off1428 (k0_t4 : Fin k0_t4_loop.trips) : Fin 4 → Nat :=
  let c2_i32_1293 : BitVec 32 := 2#32
  let v1939 : Index := Scalar.indexCast c2_i32_1293
  let c3_i32_1294 : BitVec 32 := 3#32
  let v1940 : Index := Scalar.indexCast c3_i32_1294
  let c0_i32_475 : BitVec 32 := 0#32
  let c1_i32_477 : BitVec 32 := 1#32
  let arg15 : BitVec 32 := Scf.iv c0_i32_475 c1_i32_477 k0_t4
  let v1941 : Index := Scalar.indexCast arg15
  let c112_1295 : Index := 112#32
  ![2, 3, v1941.toNat, 112]
def k0_off1429 (k0_t4 : Fin k0_t4_loop.trips) : Fin 4 → Nat :=
  let c0_i32_1296 : BitVec 32 := 0#32
  let v1945 : Index := Scalar.indexCast c0_i32_1296
  let c3_i32_1297 : BitVec 32 := 3#32
  let v1946 : Index := Scalar.indexCast c3_i32_1297
  let c0_i32_475 : BitVec 32 := 0#32
  let c1_i32_477 : BitVec 32 := 1#32
  let arg15 : BitVec 32 := Scf.iv c0_i32_475 c1_i32_477 k0_t4
  let v1947 : Index := Scalar.indexCast arg15
  let c112_1298 : Index := 112#32
  ![0, 3, v1947.toNat, 112]
def k0_off1430 (k0_t4 : Fin k0_t4_loop.trips) : Fin 4 → Nat :=
  let c2_i32_1299 : BitVec 32 := 2#32
  let v1951 : Index := Scalar.indexCast c2_i32_1299
  let c3_i32_1300 : BitVec 32 := 3#32
  let v1952 : Index := Scalar.indexCast c3_i32_1300
  let c0_i32_475 : BitVec 32 := 0#32
  let c1_i32_477 : BitVec 32 := 1#32
  let arg15 : BitVec 32 := Scf.iv c0_i32_475 c1_i32_477 k0_t4
  let v1953 : Index := Scalar.indexCast arg15
  let c128_1301 : Index := 128#32
  ![2, 3, v1953.toNat, 128]
def k0_off1431 (k0_t4 : Fin k0_t4_loop.trips) : Fin 4 → Nat :=
  let c0_i32_1302 : BitVec 32 := 0#32
  let v1957 : Index := Scalar.indexCast c0_i32_1302
  let c3_i32_1303 : BitVec 32 := 3#32
  let v1958 : Index := Scalar.indexCast c3_i32_1303
  let c0_i32_475 : BitVec 32 := 0#32
  let c1_i32_477 : BitVec 32 := 1#32
  let arg15 : BitVec 32 := Scf.iv c0_i32_475 c1_i32_477 k0_t4
  let v1959 : Index := Scalar.indexCast arg15
  let c128_1304 : Index := 128#32
  ![0, 3, v1959.toNat, 128]
def k0_off1432 (k0_t4 : Fin k0_t4_loop.trips) : Fin 4 → Nat :=
  let c2_i32_1305 : BitVec 32 := 2#32
  let v1963 : Index := Scalar.indexCast c2_i32_1305
  let c3_i32_1306 : BitVec 32 := 3#32
  let v1964 : Index := Scalar.indexCast c3_i32_1306
  let c0_i32_475 : BitVec 32 := 0#32
  let c1_i32_477 : BitVec 32 := 1#32
  let arg15 : BitVec 32 := Scf.iv c0_i32_475 c1_i32_477 k0_t4
  let v1965 : Index := Scalar.indexCast arg15
  let c144_1307 : Index := 144#32
  ![2, 3, v1965.toNat, 144]
def k0_off1433 (k0_t4 : Fin k0_t4_loop.trips) : Fin 4 → Nat :=
  let c0_i32_1308 : BitVec 32 := 0#32
  let v1969 : Index := Scalar.indexCast c0_i32_1308
  let c3_i32_1309 : BitVec 32 := 3#32
  let v1970 : Index := Scalar.indexCast c3_i32_1309
  let c0_i32_475 : BitVec 32 := 0#32
  let c1_i32_477 : BitVec 32 := 1#32
  let arg15 : BitVec 32 := Scf.iv c0_i32_475 c1_i32_477 k0_t4
  let v1971 : Index := Scalar.indexCast arg15
  let c144_1310 : Index := 144#32
  ![0, 3, v1971.toNat, 144]
def k0_off1434 (k0_t4 : Fin k0_t4_loop.trips) : Fin 4 → Nat :=
  let c2_i32_1311 : BitVec 32 := 2#32
  let v1975 : Index := Scalar.indexCast c2_i32_1311
  let c3_i32_1312 : BitVec 32 := 3#32
  let v1976 : Index := Scalar.indexCast c3_i32_1312
  let c0_i32_475 : BitVec 32 := 0#32
  let c1_i32_477 : BitVec 32 := 1#32
  let arg15 : BitVec 32 := Scf.iv c0_i32_475 c1_i32_477 k0_t4
  let v1977 : Index := Scalar.indexCast arg15
  let c160_1313 : Index := 160#32
  ![2, 3, v1977.toNat, 160]
def k0_off1435 (k0_t4 : Fin k0_t4_loop.trips) : Fin 4 → Nat :=
  let c0_i32_1314 : BitVec 32 := 0#32
  let v1981 : Index := Scalar.indexCast c0_i32_1314
  let c3_i32_1315 : BitVec 32 := 3#32
  let v1982 : Index := Scalar.indexCast c3_i32_1315
  let c0_i32_475 : BitVec 32 := 0#32
  let c1_i32_477 : BitVec 32 := 1#32
  let arg15 : BitVec 32 := Scf.iv c0_i32_475 c1_i32_477 k0_t4
  let v1983 : Index := Scalar.indexCast arg15
  let c160_1316 : Index := 160#32
  ![0, 3, v1983.toNat, 160]
def k0_off1436 (k0_t4 : Fin k0_t4_loop.trips) : Fin 4 → Nat :=
  let c2_i32_1317 : BitVec 32 := 2#32
  let v1987 : Index := Scalar.indexCast c2_i32_1317
  let c3_i32_1318 : BitVec 32 := 3#32
  let v1988 : Index := Scalar.indexCast c3_i32_1318
  let c0_i32_475 : BitVec 32 := 0#32
  let c1_i32_477 : BitVec 32 := 1#32
  let arg15 : BitVec 32 := Scf.iv c0_i32_475 c1_i32_477 k0_t4
  let v1989 : Index := Scalar.indexCast arg15
  let c176_1319 : Index := 176#32
  ![2, 3, v1989.toNat, 176]
def k0_off1437 (k0_t4 : Fin k0_t4_loop.trips) : Fin 4 → Nat :=
  let c0_i32_1320 : BitVec 32 := 0#32
  let v1993 : Index := Scalar.indexCast c0_i32_1320
  let c3_i32_1321 : BitVec 32 := 3#32
  let v1994 : Index := Scalar.indexCast c3_i32_1321
  let c0_i32_475 : BitVec 32 := 0#32
  let c1_i32_477 : BitVec 32 := 1#32
  let arg15 : BitVec 32 := Scf.iv c0_i32_475 c1_i32_477 k0_t4
  let v1995 : Index := Scalar.indexCast arg15
  let c176_1322 : Index := 176#32
  ![0, 3, v1995.toNat, 176]
def k0_off1438 (k0_t4 : Fin k0_t4_loop.trips) : Fin 4 → Nat :=
  let c2_i32_1323 : BitVec 32 := 2#32
  let v1999 : Index := Scalar.indexCast c2_i32_1323
  let c3_i32_1324 : BitVec 32 := 3#32
  let v2000 : Index := Scalar.indexCast c3_i32_1324
  let c0_i32_475 : BitVec 32 := 0#32
  let c1_i32_477 : BitVec 32 := 1#32
  let arg15 : BitVec 32 := Scf.iv c0_i32_475 c1_i32_477 k0_t4
  let v2001 : Index := Scalar.indexCast arg15
  let c192_1325 : Index := 192#32
  ![2, 3, v2001.toNat, 192]
def k0_off1439 (k0_t4 : Fin k0_t4_loop.trips) : Fin 4 → Nat :=
  let c0_i32_1326 : BitVec 32 := 0#32
  let v2005 : Index := Scalar.indexCast c0_i32_1326
  let c3_i32_1327 : BitVec 32 := 3#32
  let v2006 : Index := Scalar.indexCast c3_i32_1327
  let c0_i32_475 : BitVec 32 := 0#32
  let c1_i32_477 : BitVec 32 := 1#32
  let arg15 : BitVec 32 := Scf.iv c0_i32_475 c1_i32_477 k0_t4
  let v2007 : Index := Scalar.indexCast arg15
  let c192_1328 : Index := 192#32
  ![0, 3, v2007.toNat, 192]
def k0_off1440 (k0_t4 : Fin k0_t4_loop.trips) : Fin 4 → Nat :=
  let c2_i32_1329 : BitVec 32 := 2#32
  let v2011 : Index := Scalar.indexCast c2_i32_1329
  let c3_i32_1330 : BitVec 32 := 3#32
  let v2012 : Index := Scalar.indexCast c3_i32_1330
  let c0_i32_475 : BitVec 32 := 0#32
  let c1_i32_477 : BitVec 32 := 1#32
  let arg15 : BitVec 32 := Scf.iv c0_i32_475 c1_i32_477 k0_t4
  let v2013 : Index := Scalar.indexCast arg15
  let c208_1331 : Index := 208#32
  ![2, 3, v2013.toNat, 208]
def k0_off1441 (k0_t4 : Fin k0_t4_loop.trips) : Fin 4 → Nat :=
  let c0_i32_1332 : BitVec 32 := 0#32
  let v2017 : Index := Scalar.indexCast c0_i32_1332
  let c3_i32_1333 : BitVec 32 := 3#32
  let v2018 : Index := Scalar.indexCast c3_i32_1333
  let c0_i32_475 : BitVec 32 := 0#32
  let c1_i32_477 : BitVec 32 := 1#32
  let arg15 : BitVec 32 := Scf.iv c0_i32_475 c1_i32_477 k0_t4
  let v2019 : Index := Scalar.indexCast arg15
  let c208_1334 : Index := 208#32
  ![0, 3, v2019.toNat, 208]
def k0_off1442 (k0_t4 : Fin k0_t4_loop.trips) : Fin 4 → Nat :=
  let c2_i32_1335 : BitVec 32 := 2#32
  let v2023 : Index := Scalar.indexCast c2_i32_1335
  let c3_i32_1336 : BitVec 32 := 3#32
  let v2024 : Index := Scalar.indexCast c3_i32_1336
  let c0_i32_475 : BitVec 32 := 0#32
  let c1_i32_477 : BitVec 32 := 1#32
  let arg15 : BitVec 32 := Scf.iv c0_i32_475 c1_i32_477 k0_t4
  let v2025 : Index := Scalar.indexCast arg15
  let c224_1337 : Index := 224#32
  ![2, 3, v2025.toNat, 224]
def k0_off1443 (k0_t4 : Fin k0_t4_loop.trips) : Fin 4 → Nat :=
  let c0_i32_1338 : BitVec 32 := 0#32
  let v2029 : Index := Scalar.indexCast c0_i32_1338
  let c3_i32_1339 : BitVec 32 := 3#32
  let v2030 : Index := Scalar.indexCast c3_i32_1339
  let c0_i32_475 : BitVec 32 := 0#32
  let c1_i32_477 : BitVec 32 := 1#32
  let arg15 : BitVec 32 := Scf.iv c0_i32_475 c1_i32_477 k0_t4
  let v2031 : Index := Scalar.indexCast arg15
  let c224_1340 : Index := 224#32
  ![0, 3, v2031.toNat, 224]
def k0_off1444 (k0_t4 : Fin k0_t4_loop.trips) : Fin 4 → Nat :=
  let c2_i32_1341 : BitVec 32 := 2#32
  let v2035 : Index := Scalar.indexCast c2_i32_1341
  let c3_i32_1342 : BitVec 32 := 3#32
  let v2036 : Index := Scalar.indexCast c3_i32_1342
  let c0_i32_475 : BitVec 32 := 0#32
  let c1_i32_477 : BitVec 32 := 1#32
  let arg15 : BitVec 32 := Scf.iv c0_i32_475 c1_i32_477 k0_t4
  let v2037 : Index := Scalar.indexCast arg15
  let c240_1343 : Index := 240#32
  ![2, 3, v2037.toNat, 240]
def k0_off1445 (k0_t4 : Fin k0_t4_loop.trips) : Fin 4 → Nat :=
  let c0_i32_1344 : BitVec 32 := 0#32
  let v2041 : Index := Scalar.indexCast c0_i32_1344
  let c3_i32_1345 : BitVec 32 := 3#32
  let v2042 : Index := Scalar.indexCast c3_i32_1345
  let c0_i32_475 : BitVec 32 := 0#32
  let c1_i32_477 : BitVec 32 := 1#32
  let arg15 : BitVec 32 := Scf.iv c0_i32_475 c1_i32_477 k0_t4
  let v2043 : Index := Scalar.indexCast arg15
  let c240_1346 : Index := 240#32
  ![0, 3, v2043.toNat, 240]
def k0_off1446 (k0_t4 : Fin k0_t4_loop.trips) : Fin 4 → Nat :=
  let c2_i32_1347 : BitVec 32 := 2#32
  let v2047 : Index := Scalar.indexCast c2_i32_1347
  let c3_i32_1348 : BitVec 32 := 3#32
  let v2048 : Index := Scalar.indexCast c3_i32_1348
  let c0_i32_475 : BitVec 32 := 0#32
  let c1_i32_477 : BitVec 32 := 1#32
  let arg15 : BitVec 32 := Scf.iv c0_i32_475 c1_i32_477 k0_t4
  let v2049 : Index := Scalar.indexCast arg15
  let c256_1349 : Index := 256#32
  ![2, 3, v2049.toNat, 256]
def k0_off1447 (k0_t4 : Fin k0_t4_loop.trips) : Fin 4 → Nat :=
  let c0_i32_1350 : BitVec 32 := 0#32
  let v2053 : Index := Scalar.indexCast c0_i32_1350
  let c3_i32_1351 : BitVec 32 := 3#32
  let v2054 : Index := Scalar.indexCast c3_i32_1351
  let c0_i32_475 : BitVec 32 := 0#32
  let c1_i32_477 : BitVec 32 := 1#32
  let arg15 : BitVec 32 := Scf.iv c0_i32_475 c1_i32_477 k0_t4
  let v2055 : Index := Scalar.indexCast arg15
  let c256_1352 : Index := 256#32
  ![0, 3, v2055.toNat, 256]
def k0_off1448 (k0_t4 : Fin k0_t4_loop.trips) : Fin 4 → Nat :=
  let c2_i32_1353 : BitVec 32 := 2#32
  let v2059 : Index := Scalar.indexCast c2_i32_1353
  let c3_i32_1354 : BitVec 32 := 3#32
  let v2060 : Index := Scalar.indexCast c3_i32_1354
  let c0_i32_475 : BitVec 32 := 0#32
  let c1_i32_477 : BitVec 32 := 1#32
  let arg15 : BitVec 32 := Scf.iv c0_i32_475 c1_i32_477 k0_t4
  let v2061 : Index := Scalar.indexCast arg15
  let c272_1355 : Index := 272#32
  ![2, 3, v2061.toNat, 272]
def k0_off1449 (k0_t4 : Fin k0_t4_loop.trips) : Fin 4 → Nat :=
  let c0_i32_1356 : BitVec 32 := 0#32
  let v2065 : Index := Scalar.indexCast c0_i32_1356
  let c3_i32_1357 : BitVec 32 := 3#32
  let v2066 : Index := Scalar.indexCast c3_i32_1357
  let c0_i32_475 : BitVec 32 := 0#32
  let c1_i32_477 : BitVec 32 := 1#32
  let arg15 : BitVec 32 := Scf.iv c0_i32_475 c1_i32_477 k0_t4
  let v2067 : Index := Scalar.indexCast arg15
  let c272_1358 : Index := 272#32
  ![0, 3, v2067.toNat, 272]
def k0_off1450 (k0_t4 : Fin k0_t4_loop.trips) : Fin 4 → Nat :=
  let c2_i32_1359 : BitVec 32 := 2#32
  let v2071 : Index := Scalar.indexCast c2_i32_1359
  let c3_i32_1360 : BitVec 32 := 3#32
  let v2072 : Index := Scalar.indexCast c3_i32_1360
  let c0_i32_475 : BitVec 32 := 0#32
  let c1_i32_477 : BitVec 32 := 1#32
  let arg15 : BitVec 32 := Scf.iv c0_i32_475 c1_i32_477 k0_t4
  let v2073 : Index := Scalar.indexCast arg15
  let c288_1361 : Index := 288#32
  ![2, 3, v2073.toNat, 288]
def k0_off1451 (k0_t4 : Fin k0_t4_loop.trips) : Fin 4 → Nat :=
  let c0_i32_1362 : BitVec 32 := 0#32
  let v2077 : Index := Scalar.indexCast c0_i32_1362
  let c3_i32_1363 : BitVec 32 := 3#32
  let v2078 : Index := Scalar.indexCast c3_i32_1363
  let c0_i32_475 : BitVec 32 := 0#32
  let c1_i32_477 : BitVec 32 := 1#32
  let arg15 : BitVec 32 := Scf.iv c0_i32_475 c1_i32_477 k0_t4
  let v2079 : Index := Scalar.indexCast arg15
  let c288_1364 : Index := 288#32
  ![0, 3, v2079.toNat, 288]
def k0_off1452 (k0_t4 : Fin k0_t4_loop.trips) : Fin 4 → Nat :=
  let c2_i32_1365 : BitVec 32 := 2#32
  let v2083 : Index := Scalar.indexCast c2_i32_1365
  let c3_i32_1366 : BitVec 32 := 3#32
  let v2084 : Index := Scalar.indexCast c3_i32_1366
  let c0_i32_475 : BitVec 32 := 0#32
  let c1_i32_477 : BitVec 32 := 1#32
  let arg15 : BitVec 32 := Scf.iv c0_i32_475 c1_i32_477 k0_t4
  let v2085 : Index := Scalar.indexCast arg15
  let c304_1367 : Index := 304#32
  ![2, 3, v2085.toNat, 304]
def k0_off1453 (k0_t4 : Fin k0_t4_loop.trips) : Fin 4 → Nat :=
  let c0_i32_1368 : BitVec 32 := 0#32
  let v2089 : Index := Scalar.indexCast c0_i32_1368
  let c3_i32_1369 : BitVec 32 := 3#32
  let v2090 : Index := Scalar.indexCast c3_i32_1369
  let c0_i32_475 : BitVec 32 := 0#32
  let c1_i32_477 : BitVec 32 := 1#32
  let arg15 : BitVec 32 := Scf.iv c0_i32_475 c1_i32_477 k0_t4
  let v2091 : Index := Scalar.indexCast arg15
  let c304_1370 : Index := 304#32
  ![0, 3, v2091.toNat, 304]
def k0_off1454 (k0_t4 : Fin k0_t4_loop.trips) : Fin 4 → Nat :=
  let c2_i32_1371 : BitVec 32 := 2#32
  let v2095 : Index := Scalar.indexCast c2_i32_1371
  let c3_i32_1372 : BitVec 32 := 3#32
  let v2096 : Index := Scalar.indexCast c3_i32_1372
  let c0_i32_475 : BitVec 32 := 0#32
  let c1_i32_477 : BitVec 32 := 1#32
  let arg15 : BitVec 32 := Scf.iv c0_i32_475 c1_i32_477 k0_t4
  let v2097 : Index := Scalar.indexCast arg15
  let c320_1373 : Index := 320#32
  ![2, 3, v2097.toNat, 320]
def k0_off1455 (k0_t4 : Fin k0_t4_loop.trips) : Fin 4 → Nat :=
  let c0_i32_1374 : BitVec 32 := 0#32
  let v2101 : Index := Scalar.indexCast c0_i32_1374
  let c3_i32_1375 : BitVec 32 := 3#32
  let v2102 : Index := Scalar.indexCast c3_i32_1375
  let c0_i32_475 : BitVec 32 := 0#32
  let c1_i32_477 : BitVec 32 := 1#32
  let arg15 : BitVec 32 := Scf.iv c0_i32_475 c1_i32_477 k0_t4
  let v2103 : Index := Scalar.indexCast arg15
  let c320_1376 : Index := 320#32
  ![0, 3, v2103.toNat, 320]
def k0_off1456 (k0_t4 : Fin k0_t4_loop.trips) : Fin 4 → Nat :=
  let c2_i32_1377 : BitVec 32 := 2#32
  let v2107 : Index := Scalar.indexCast c2_i32_1377
  let c3_i32_1378 : BitVec 32 := 3#32
  let v2108 : Index := Scalar.indexCast c3_i32_1378
  let c0_i32_475 : BitVec 32 := 0#32
  let c1_i32_477 : BitVec 32 := 1#32
  let arg15 : BitVec 32 := Scf.iv c0_i32_475 c1_i32_477 k0_t4
  let v2109 : Index := Scalar.indexCast arg15
  let c336_1379 : Index := 336#32
  ![2, 3, v2109.toNat, 336]
def k0_off1457 (k0_t4 : Fin k0_t4_loop.trips) : Fin 4 → Nat :=
  let c0_i32_1380 : BitVec 32 := 0#32
  let v2113 : Index := Scalar.indexCast c0_i32_1380
  let c3_i32_1381 : BitVec 32 := 3#32
  let v2114 : Index := Scalar.indexCast c3_i32_1381
  let c0_i32_475 : BitVec 32 := 0#32
  let c1_i32_477 : BitVec 32 := 1#32
  let arg15 : BitVec 32 := Scf.iv c0_i32_475 c1_i32_477 k0_t4
  let v2115 : Index := Scalar.indexCast arg15
  let c336_1382 : Index := 336#32
  ![0, 3, v2115.toNat, 336]
def k0_off1458 (k0_t4 : Fin k0_t4_loop.trips) : Fin 4 → Nat :=
  let c2_i32_1383 : BitVec 32 := 2#32
  let v2119 : Index := Scalar.indexCast c2_i32_1383
  let c3_i32_1384 : BitVec 32 := 3#32
  let v2120 : Index := Scalar.indexCast c3_i32_1384
  let c0_i32_475 : BitVec 32 := 0#32
  let c1_i32_477 : BitVec 32 := 1#32
  let arg15 : BitVec 32 := Scf.iv c0_i32_475 c1_i32_477 k0_t4
  let v2121 : Index := Scalar.indexCast arg15
  let c352_1385 : Index := 352#32
  ![2, 3, v2121.toNat, 352]
def k0_off1459 (k0_t4 : Fin k0_t4_loop.trips) : Fin 4 → Nat :=
  let c0_i32_1386 : BitVec 32 := 0#32
  let v2125 : Index := Scalar.indexCast c0_i32_1386
  let c3_i32_1387 : BitVec 32 := 3#32
  let v2126 : Index := Scalar.indexCast c3_i32_1387
  let c0_i32_475 : BitVec 32 := 0#32
  let c1_i32_477 : BitVec 32 := 1#32
  let arg15 : BitVec 32 := Scf.iv c0_i32_475 c1_i32_477 k0_t4
  let v2127 : Index := Scalar.indexCast arg15
  let c352_1388 : Index := 352#32
  ![0, 3, v2127.toNat, 352]
def k0_off1460 (k0_t4 : Fin k0_t4_loop.trips) : Fin 4 → Nat :=
  let c2_i32_1389 : BitVec 32 := 2#32
  let v2131 : Index := Scalar.indexCast c2_i32_1389
  let c3_i32_1390 : BitVec 32 := 3#32
  let v2132 : Index := Scalar.indexCast c3_i32_1390
  let c0_i32_475 : BitVec 32 := 0#32
  let c1_i32_477 : BitVec 32 := 1#32
  let arg15 : BitVec 32 := Scf.iv c0_i32_475 c1_i32_477 k0_t4
  let v2133 : Index := Scalar.indexCast arg15
  let c368_1391 : Index := 368#32
  ![2, 3, v2133.toNat, 368]
def k0_off1461 (k0_t4 : Fin k0_t4_loop.trips) : Fin 4 → Nat :=
  let c0_i32_1392 : BitVec 32 := 0#32
  let v2137 : Index := Scalar.indexCast c0_i32_1392
  let c3_i32_1393 : BitVec 32 := 3#32
  let v2138 : Index := Scalar.indexCast c3_i32_1393
  let c0_i32_475 : BitVec 32 := 0#32
  let c1_i32_477 : BitVec 32 := 1#32
  let arg15 : BitVec 32 := Scf.iv c0_i32_475 c1_i32_477 k0_t4
  let v2139 : Index := Scalar.indexCast arg15
  let c368_1394 : Index := 368#32
  ![0, 3, v2139.toNat, 368]
def k0_off1462 (k0_t4 : Fin k0_t4_loop.trips) : Fin 4 → Nat :=
  let c2_i32_1395 : BitVec 32 := 2#32
  let v2143 : Index := Scalar.indexCast c2_i32_1395
  let c3_i32_1396 : BitVec 32 := 3#32
  let v2144 : Index := Scalar.indexCast c3_i32_1396
  let c0_i32_475 : BitVec 32 := 0#32
  let c1_i32_477 : BitVec 32 := 1#32
  let arg15 : BitVec 32 := Scf.iv c0_i32_475 c1_i32_477 k0_t4
  let v2145 : Index := Scalar.indexCast arg15
  let c384_1397 : Index := 384#32
  ![2, 3, v2145.toNat, 384]
def k0_off1463 (k0_t4 : Fin k0_t4_loop.trips) : Fin 4 → Nat :=
  let c0_i32_1398 : BitVec 32 := 0#32
  let v2149 : Index := Scalar.indexCast c0_i32_1398
  let c3_i32_1399 : BitVec 32 := 3#32
  let v2150 : Index := Scalar.indexCast c3_i32_1399
  let c0_i32_475 : BitVec 32 := 0#32
  let c1_i32_477 : BitVec 32 := 1#32
  let arg15 : BitVec 32 := Scf.iv c0_i32_475 c1_i32_477 k0_t4
  let v2151 : Index := Scalar.indexCast arg15
  let c384_1400 : Index := 384#32
  ![0, 3, v2151.toNat, 384]
def k0_off1464 (k0_t4 : Fin k0_t4_loop.trips) : Fin 4 → Nat :=
  let c2_i32_1401 : BitVec 32 := 2#32
  let v2155 : Index := Scalar.indexCast c2_i32_1401
  let c3_i32_1402 : BitVec 32 := 3#32
  let v2156 : Index := Scalar.indexCast c3_i32_1402
  let c0_i32_475 : BitVec 32 := 0#32
  let c1_i32_477 : BitVec 32 := 1#32
  let arg15 : BitVec 32 := Scf.iv c0_i32_475 c1_i32_477 k0_t4
  let v2157 : Index := Scalar.indexCast arg15
  let c400_1403 : Index := 400#32
  ![2, 3, v2157.toNat, 400]
def k0_off1465 (k0_t4 : Fin k0_t4_loop.trips) : Fin 4 → Nat :=
  let c0_i32_1404 : BitVec 32 := 0#32
  let v2161 : Index := Scalar.indexCast c0_i32_1404
  let c3_i32_1405 : BitVec 32 := 3#32
  let v2162 : Index := Scalar.indexCast c3_i32_1405
  let c0_i32_475 : BitVec 32 := 0#32
  let c1_i32_477 : BitVec 32 := 1#32
  let arg15 : BitVec 32 := Scf.iv c0_i32_475 c1_i32_477 k0_t4
  let v2163 : Index := Scalar.indexCast arg15
  let c400_1406 : Index := 400#32
  ![0, 3, v2163.toNat, 400]
def k0_off1466 (k0_t4 : Fin k0_t4_loop.trips) : Fin 4 → Nat :=
  let c2_i32_1407 : BitVec 32 := 2#32
  let v2167 : Index := Scalar.indexCast c2_i32_1407
  let c3_i32_1408 : BitVec 32 := 3#32
  let v2168 : Index := Scalar.indexCast c3_i32_1408
  let c0_i32_475 : BitVec 32 := 0#32
  let c1_i32_477 : BitVec 32 := 1#32
  let arg15 : BitVec 32 := Scf.iv c0_i32_475 c1_i32_477 k0_t4
  let v2169 : Index := Scalar.indexCast arg15
  let c416_1409 : Index := 416#32
  ![2, 3, v2169.toNat, 416]
def k0_off1467 (k0_t4 : Fin k0_t4_loop.trips) : Fin 4 → Nat :=
  let c0_i32_1410 : BitVec 32 := 0#32
  let v2173 : Index := Scalar.indexCast c0_i32_1410
  let c3_i32_1411 : BitVec 32 := 3#32
  let v2174 : Index := Scalar.indexCast c3_i32_1411
  let c0_i32_475 : BitVec 32 := 0#32
  let c1_i32_477 : BitVec 32 := 1#32
  let arg15 : BitVec 32 := Scf.iv c0_i32_475 c1_i32_477 k0_t4
  let v2175 : Index := Scalar.indexCast arg15
  let c416_1412 : Index := 416#32
  ![0, 3, v2175.toNat, 416]
def k0_off1468 (k0_t4 : Fin k0_t4_loop.trips) : Fin 4 → Nat :=
  let c2_i32_1413 : BitVec 32 := 2#32
  let v2179 : Index := Scalar.indexCast c2_i32_1413
  let c3_i32_1414 : BitVec 32 := 3#32
  let v2180 : Index := Scalar.indexCast c3_i32_1414
  let c0_i32_475 : BitVec 32 := 0#32
  let c1_i32_477 : BitVec 32 := 1#32
  let arg15 : BitVec 32 := Scf.iv c0_i32_475 c1_i32_477 k0_t4
  let v2181 : Index := Scalar.indexCast arg15
  let c432_1415 : Index := 432#32
  ![2, 3, v2181.toNat, 432]
def k0_off1469 (k0_t4 : Fin k0_t4_loop.trips) : Fin 4 → Nat :=
  let c0_i32_1416 : BitVec 32 := 0#32
  let v2185 : Index := Scalar.indexCast c0_i32_1416
  let c3_i32_1417 : BitVec 32 := 3#32
  let v2186 : Index := Scalar.indexCast c3_i32_1417
  let c0_i32_475 : BitVec 32 := 0#32
  let c1_i32_477 : BitVec 32 := 1#32
  let arg15 : BitVec 32 := Scf.iv c0_i32_475 c1_i32_477 k0_t4
  let v2187 : Index := Scalar.indexCast arg15
  let c432_1418 : Index := 432#32
  ![0, 3, v2187.toNat, 432]
def k0_off1470 (k0_t4 : Fin k0_t4_loop.trips) : Fin 4 → Nat :=
  let c2_i32_1419 : BitVec 32 := 2#32
  let v2191 : Index := Scalar.indexCast c2_i32_1419
  let c3_i32_1420 : BitVec 32 := 3#32
  let v2192 : Index := Scalar.indexCast c3_i32_1420
  let c0_i32_475 : BitVec 32 := 0#32
  let c1_i32_477 : BitVec 32 := 1#32
  let arg15 : BitVec 32 := Scf.iv c0_i32_475 c1_i32_477 k0_t4
  let v2193 : Index := Scalar.indexCast arg15
  let c448_1421 : Index := 448#32
  ![2, 3, v2193.toNat, 448]
def k0_off1471 (k0_t4 : Fin k0_t4_loop.trips) : Fin 4 → Nat :=
  let c0_i32_1422 : BitVec 32 := 0#32
  let v2197 : Index := Scalar.indexCast c0_i32_1422
  let c3_i32_1423 : BitVec 32 := 3#32
  let v2198 : Index := Scalar.indexCast c3_i32_1423
  let c0_i32_475 : BitVec 32 := 0#32
  let c1_i32_477 : BitVec 32 := 1#32
  let arg15 : BitVec 32 := Scf.iv c0_i32_475 c1_i32_477 k0_t4
  let v2199 : Index := Scalar.indexCast arg15
  let c448_1424 : Index := 448#32
  ![0, 3, v2199.toNat, 448]
def k0_off1472 (k0_t4 : Fin k0_t4_loop.trips) : Fin 4 → Nat :=
  let c2_i32_1425 : BitVec 32 := 2#32
  let v2203 : Index := Scalar.indexCast c2_i32_1425
  let c3_i32_1426 : BitVec 32 := 3#32
  let v2204 : Index := Scalar.indexCast c3_i32_1426
  let c0_i32_475 : BitVec 32 := 0#32
  let c1_i32_477 : BitVec 32 := 1#32
  let arg15 : BitVec 32 := Scf.iv c0_i32_475 c1_i32_477 k0_t4
  let v2205 : Index := Scalar.indexCast arg15
  let c464_1427 : Index := 464#32
  ![2, 3, v2205.toNat, 464]
def k0_off1473 (k0_t4 : Fin k0_t4_loop.trips) : Fin 4 → Nat :=
  let c0_i32_1428 : BitVec 32 := 0#32
  let v2209 : Index := Scalar.indexCast c0_i32_1428
  let c3_i32_1429 : BitVec 32 := 3#32
  let v2210 : Index := Scalar.indexCast c3_i32_1429
  let c0_i32_475 : BitVec 32 := 0#32
  let c1_i32_477 : BitVec 32 := 1#32
  let arg15 : BitVec 32 := Scf.iv c0_i32_475 c1_i32_477 k0_t4
  let v2211 : Index := Scalar.indexCast arg15
  let c464_1430 : Index := 464#32
  ![0, 3, v2211.toNat, 464]
def k0_off1474 (k0_t4 : Fin k0_t4_loop.trips) : Fin 4 → Nat :=
  let c2_i32_1431 : BitVec 32 := 2#32
  let v2215 : Index := Scalar.indexCast c2_i32_1431
  let c3_i32_1432 : BitVec 32 := 3#32
  let v2216 : Index := Scalar.indexCast c3_i32_1432
  let c0_i32_475 : BitVec 32 := 0#32
  let c1_i32_477 : BitVec 32 := 1#32
  let arg15 : BitVec 32 := Scf.iv c0_i32_475 c1_i32_477 k0_t4
  let v2217 : Index := Scalar.indexCast arg15
  let c480_1433 : Index := 480#32
  ![2, 3, v2217.toNat, 480]
def k0_off1475 (k0_t4 : Fin k0_t4_loop.trips) : Fin 4 → Nat :=
  let c0_i32_1434 : BitVec 32 := 0#32
  let v2221 : Index := Scalar.indexCast c0_i32_1434
  let c3_i32_1435 : BitVec 32 := 3#32
  let v2222 : Index := Scalar.indexCast c3_i32_1435
  let c0_i32_475 : BitVec 32 := 0#32
  let c1_i32_477 : BitVec 32 := 1#32
  let arg15 : BitVec 32 := Scf.iv c0_i32_475 c1_i32_477 k0_t4
  let v2223 : Index := Scalar.indexCast arg15
  let c480_1436 : Index := 480#32
  ![0, 3, v2223.toNat, 480]
def k0_off1476 (k0_t4 : Fin k0_t4_loop.trips) : Fin 4 → Nat :=
  let c2_i32_1437 : BitVec 32 := 2#32
  let v2227 : Index := Scalar.indexCast c2_i32_1437
  let c3_i32_1438 : BitVec 32 := 3#32
  let v2228 : Index := Scalar.indexCast c3_i32_1438
  let c0_i32_475 : BitVec 32 := 0#32
  let c1_i32_477 : BitVec 32 := 1#32
  let arg15 : BitVec 32 := Scf.iv c0_i32_475 c1_i32_477 k0_t4
  let v2229 : Index := Scalar.indexCast arg15
  let c496_1439 : Index := 496#32
  ![2, 3, v2229.toNat, 496]
def k0_off1477 (k0_t4 : Fin k0_t4_loop.trips) : Fin 4 → Nat :=
  let c0_i32_1440 : BitVec 32 := 0#32
  let v2233 : Index := Scalar.indexCast c0_i32_1440
  let c3_i32_1441 : BitVec 32 := 3#32
  let v2234 : Index := Scalar.indexCast c3_i32_1441
  let c0_i32_475 : BitVec 32 := 0#32
  let c1_i32_477 : BitVec 32 := 1#32
  let arg15 : BitVec 32 := Scf.iv c0_i32_475 c1_i32_477 k0_t4
  let v2235 : Index := Scalar.indexCast arg15
  let c496_1442 : Index := 496#32
  ![0, 3, v2235.toNat, 496]
def k0_off1478 (k0_t4 : Fin k0_t4_loop.trips) : Fin 3 → Nat :=
  let c2_i32_1443 : BitVec 32 := 2#32
  let v2239 : Index := Scalar.indexCast c2_i32_1443
  let c0_i32_475 : BitVec 32 := 0#32
  let c1_i32_477 : BitVec 32 := 1#32
  let arg15 : BitVec 32 := Scf.iv c0_i32_475 c1_i32_477 k0_t4
  let v2240 : Index := Scalar.indexCast arg15
  let c512 : Index := 512#32
  ![2, v2240.toNat, 512]
def k0_off1479 (k0_t4 : Fin k0_t4_loop.trips) : Fin 3 → Nat :=
  let c2_i32_1444 : BitVec 32 := 2#32
  let v2243 : Index := Scalar.indexCast c2_i32_1444
  let c0_i32_475 : BitVec 32 := 0#32
  let c1_i32_477 : BitVec 32 := 1#32
  let arg15 : BitVec 32 := Scf.iv c0_i32_475 c1_i32_477 k0_t4
  let v2244 : Index := Scalar.indexCast arg15
  let c528 : Index := 528#32
  ![2, v2244.toNat, 528]
def k0_off1480 (k0_t4 : Fin k0_t4_loop.trips) : Fin 3 → Nat :=
  let c2_i32_1445 : BitVec 32 := 2#32
  let v2247 : Index := Scalar.indexCast c2_i32_1445
  let c0_i32_475 : BitVec 32 := 0#32
  let c1_i32_477 : BitVec 32 := 1#32
  let arg15 : BitVec 32 := Scf.iv c0_i32_475 c1_i32_477 k0_t4
  let v2248 : Index := Scalar.indexCast arg15
  let c544 : Index := 544#32
  ![2, v2248.toNat, 544]
def k0_off1481 (k0_t4 : Fin k0_t4_loop.trips) : Fin 3 → Nat :=
  let c2_i32_1446 : BitVec 32 := 2#32
  let v2251 : Index := Scalar.indexCast c2_i32_1446
  let c0_i32_475 : BitVec 32 := 0#32
  let c1_i32_477 : BitVec 32 := 1#32
  let arg15 : BitVec 32 := Scf.iv c0_i32_475 c1_i32_477 k0_t4
  let v2252 : Index := Scalar.indexCast arg15
  let c560 : Index := 560#32
  ![2, v2252.toNat, 560]
def k0_off1482 (k0_t4 : Fin k0_t4_loop.trips) : Fin 3 → Nat :=
  let c2_i32_1447 : BitVec 32 := 2#32
  let v2255 : Index := Scalar.indexCast c2_i32_1447
  let c0_i32_475 : BitVec 32 := 0#32
  let c1_i32_477 : BitVec 32 := 1#32
  let arg15 : BitVec 32 := Scf.iv c0_i32_475 c1_i32_477 k0_t4
  let v2256 : Index := Scalar.indexCast arg15
  let c576 : Index := 576#32
  ![2, v2256.toNat, 576]
def k0_off1483 (k0_t4 : Fin k0_t4_loop.trips) : Fin 3 → Nat :=
  let c2_i32_1448 : BitVec 32 := 2#32
  let v2259 : Index := Scalar.indexCast c2_i32_1448
  let c0_i32_475 : BitVec 32 := 0#32
  let c1_i32_477 : BitVec 32 := 1#32
  let arg15 : BitVec 32 := Scf.iv c0_i32_475 c1_i32_477 k0_t4
  let v2260 : Index := Scalar.indexCast arg15
  let c592 : Index := 592#32
  ![2, v2260.toNat, 592]
def k0_off1484 (k0_t4 : Fin k0_t4_loop.trips) : Fin 3 → Nat :=
  let c2_i32_1449 : BitVec 32 := 2#32
  let v2263 : Index := Scalar.indexCast c2_i32_1449
  let c0_i32_475 : BitVec 32 := 0#32
  let c1_i32_477 : BitVec 32 := 1#32
  let arg15 : BitVec 32 := Scf.iv c0_i32_475 c1_i32_477 k0_t4
  let v2264 : Index := Scalar.indexCast arg15
  let c608 : Index := 608#32
  ![2, v2264.toNat, 608]
def k0_off1485 (k0_t4 : Fin k0_t4_loop.trips) : Fin 3 → Nat :=
  let c2_i32_1450 : BitVec 32 := 2#32
  let v2267 : Index := Scalar.indexCast c2_i32_1450
  let c0_i32_475 : BitVec 32 := 0#32
  let c1_i32_477 : BitVec 32 := 1#32
  let arg15 : BitVec 32 := Scf.iv c0_i32_475 c1_i32_477 k0_t4
  let v2268 : Index := Scalar.indexCast arg15
  let c624 : Index := 624#32
  ![2, v2268.toNat, 624]
def k0_off1486 (k0_t4 : Fin k0_t4_loop.trips) : Fin 3 → Nat :=
  let c2_i32_1451 : BitVec 32 := 2#32
  let v2271 : Index := Scalar.indexCast c2_i32_1451
  let c0_i32_475 : BitVec 32 := 0#32
  let c1_i32_477 : BitVec 32 := 1#32
  let arg15 : BitVec 32 := Scf.iv c0_i32_475 c1_i32_477 k0_t4
  let v2272 : Index := Scalar.indexCast arg15
  let c640 : Index := 640#32
  ![2, v2272.toNat, 640]
def k0_off1487 (k0_t4 : Fin k0_t4_loop.trips) : Fin 3 → Nat :=
  let c2_i32_1452 : BitVec 32 := 2#32
  let v2275 : Index := Scalar.indexCast c2_i32_1452
  let c0_i32_475 : BitVec 32 := 0#32
  let c1_i32_477 : BitVec 32 := 1#32
  let arg15 : BitVec 32 := Scf.iv c0_i32_475 c1_i32_477 k0_t4
  let v2276 : Index := Scalar.indexCast arg15
  let c656 : Index := 656#32
  ![2, v2276.toNat, 656]
def k0_off1488 (k0_t4 : Fin k0_t4_loop.trips) : Fin 3 → Nat :=
  let c2_i32_1453 : BitVec 32 := 2#32
  let v2279 : Index := Scalar.indexCast c2_i32_1453
  let c0_i32_475 : BitVec 32 := 0#32
  let c1_i32_477 : BitVec 32 := 1#32
  let arg15 : BitVec 32 := Scf.iv c0_i32_475 c1_i32_477 k0_t4
  let v2280 : Index := Scalar.indexCast arg15
  let c672 : Index := 672#32
  ![2, v2280.toNat, 672]
def k0_off1489 (k0_t4 : Fin k0_t4_loop.trips) : Fin 3 → Nat :=
  let c2_i32_1454 : BitVec 32 := 2#32
  let v2283 : Index := Scalar.indexCast c2_i32_1454
  let c0_i32_475 : BitVec 32 := 0#32
  let c1_i32_477 : BitVec 32 := 1#32
  let arg15 : BitVec 32 := Scf.iv c0_i32_475 c1_i32_477 k0_t4
  let v2284 : Index := Scalar.indexCast arg15
  let c688 : Index := 688#32
  ![2, v2284.toNat, 688]
def k0_off1490 (k0_t4 : Fin k0_t4_loop.trips) : Fin 3 → Nat :=
  let c2_i32_1455 : BitVec 32 := 2#32
  let v2287 : Index := Scalar.indexCast c2_i32_1455
  let c0_i32_475 : BitVec 32 := 0#32
  let c1_i32_477 : BitVec 32 := 1#32
  let arg15 : BitVec 32 := Scf.iv c0_i32_475 c1_i32_477 k0_t4
  let v2288 : Index := Scalar.indexCast arg15
  let c704 : Index := 704#32
  ![2, v2288.toNat, 704]
def k0_off1491 (k0_t4 : Fin k0_t4_loop.trips) : Fin 3 → Nat :=
  let c2_i32_1456 : BitVec 32 := 2#32
  let v2291 : Index := Scalar.indexCast c2_i32_1456
  let c0_i32_475 : BitVec 32 := 0#32
  let c1_i32_477 : BitVec 32 := 1#32
  let arg15 : BitVec 32 := Scf.iv c0_i32_475 c1_i32_477 k0_t4
  let v2292 : Index := Scalar.indexCast arg15
  let c720 : Index := 720#32
  ![2, v2292.toNat, 720]
def k0_off1492 (k0_t4 : Fin k0_t4_loop.trips) : Fin 3 → Nat :=
  let c2_i32_1457 : BitVec 32 := 2#32
  let v2295 : Index := Scalar.indexCast c2_i32_1457
  let c0_i32_475 : BitVec 32 := 0#32
  let c1_i32_477 : BitVec 32 := 1#32
  let arg15 : BitVec 32 := Scf.iv c0_i32_475 c1_i32_477 k0_t4
  let v2296 : Index := Scalar.indexCast arg15
  let c736 : Index := 736#32
  ![2, v2296.toNat, 736]
def k0_off1493 (k0_t4 : Fin k0_t4_loop.trips) : Fin 3 → Nat :=
  let c2_i32_1458 : BitVec 32 := 2#32
  let v2299 : Index := Scalar.indexCast c2_i32_1458
  let c0_i32_475 : BitVec 32 := 0#32
  let c1_i32_477 : BitVec 32 := 1#32
  let arg15 : BitVec 32 := Scf.iv c0_i32_475 c1_i32_477 k0_t4
  let v2300 : Index := Scalar.indexCast arg15
  let c752 : Index := 752#32
  ![2, v2300.toNat, 752]
def k0_off1494 (k0_t4 : Fin k0_t4_loop.trips) : Fin 3 → Nat :=
  let c2_i32_1459 : BitVec 32 := 2#32
  let v2303 : Index := Scalar.indexCast c2_i32_1459
  let c0_i32_475 : BitVec 32 := 0#32
  let c1_i32_477 : BitVec 32 := 1#32
  let arg15 : BitVec 32 := Scf.iv c0_i32_475 c1_i32_477 k0_t4
  let v2304 : Index := Scalar.indexCast arg15
  let c768 : Index := 768#32
  ![2, v2304.toNat, 768]
def k0_off1495 (k0_t4 : Fin k0_t4_loop.trips) : Fin 3 → Nat :=
  let c2_i32_1460 : BitVec 32 := 2#32
  let v2307 : Index := Scalar.indexCast c2_i32_1460
  let c0_i32_475 : BitVec 32 := 0#32
  let c1_i32_477 : BitVec 32 := 1#32
  let arg15 : BitVec 32 := Scf.iv c0_i32_475 c1_i32_477 k0_t4
  let v2308 : Index := Scalar.indexCast arg15
  let c784 : Index := 784#32
  ![2, v2308.toNat, 784]
def k0_off1496 (k0_t4 : Fin k0_t4_loop.trips) : Fin 3 → Nat :=
  let c2_i32_1461 : BitVec 32 := 2#32
  let v2311 : Index := Scalar.indexCast c2_i32_1461
  let c0_i32_475 : BitVec 32 := 0#32
  let c1_i32_477 : BitVec 32 := 1#32
  let arg15 : BitVec 32 := Scf.iv c0_i32_475 c1_i32_477 k0_t4
  let v2312 : Index := Scalar.indexCast arg15
  let c800 : Index := 800#32
  ![2, v2312.toNat, 800]
def k0_off1497 (k0_t4 : Fin k0_t4_loop.trips) : Fin 3 → Nat :=
  let c2_i32_1462 : BitVec 32 := 2#32
  let v2315 : Index := Scalar.indexCast c2_i32_1462
  let c0_i32_475 : BitVec 32 := 0#32
  let c1_i32_477 : BitVec 32 := 1#32
  let arg15 : BitVec 32 := Scf.iv c0_i32_475 c1_i32_477 k0_t4
  let v2316 : Index := Scalar.indexCast arg15
  let c816 : Index := 816#32
  ![2, v2316.toNat, 816]
def k0_off1498 (k0_t4 : Fin k0_t4_loop.trips) : Fin 3 → Nat :=
  let c2_i32_1463 : BitVec 32 := 2#32
  let v2319 : Index := Scalar.indexCast c2_i32_1463
  let c0_i32_475 : BitVec 32 := 0#32
  let c1_i32_477 : BitVec 32 := 1#32
  let arg15 : BitVec 32 := Scf.iv c0_i32_475 c1_i32_477 k0_t4
  let v2320 : Index := Scalar.indexCast arg15
  let c832 : Index := 832#32
  ![2, v2320.toNat, 832]
def k0_off1499 (k0_t4 : Fin k0_t4_loop.trips) : Fin 3 → Nat :=
  let c2_i32_1464 : BitVec 32 := 2#32
  let v2323 : Index := Scalar.indexCast c2_i32_1464
  let c0_i32_475 : BitVec 32 := 0#32
  let c1_i32_477 : BitVec 32 := 1#32
  let arg15 : BitVec 32 := Scf.iv c0_i32_475 c1_i32_477 k0_t4
  let v2324 : Index := Scalar.indexCast arg15
  let c848 : Index := 848#32
  ![2, v2324.toNat, 848]
def k0_off1500 (k0_t4 : Fin k0_t4_loop.trips) : Fin 3 → Nat :=
  let c2_i32_1465 : BitVec 32 := 2#32
  let v2327 : Index := Scalar.indexCast c2_i32_1465
  let c0_i32_475 : BitVec 32 := 0#32
  let c1_i32_477 : BitVec 32 := 1#32
  let arg15 : BitVec 32 := Scf.iv c0_i32_475 c1_i32_477 k0_t4
  let v2328 : Index := Scalar.indexCast arg15
  let c864 : Index := 864#32
  ![2, v2328.toNat, 864]
def k0_off1501 (k0_t4 : Fin k0_t4_loop.trips) : Fin 3 → Nat :=
  let c2_i32_1466 : BitVec 32 := 2#32
  let v2331 : Index := Scalar.indexCast c2_i32_1466
  let c0_i32_475 : BitVec 32 := 0#32
  let c1_i32_477 : BitVec 32 := 1#32
  let arg15 : BitVec 32 := Scf.iv c0_i32_475 c1_i32_477 k0_t4
  let v2332 : Index := Scalar.indexCast arg15
  let c880 : Index := 880#32
  ![2, v2332.toNat, 880]
def k0_off1502 (k0_t4 : Fin k0_t4_loop.trips) : Fin 3 → Nat :=
  let c2_i32_1467 : BitVec 32 := 2#32
  let v2335 : Index := Scalar.indexCast c2_i32_1467
  let c0_i32_475 : BitVec 32 := 0#32
  let c1_i32_477 : BitVec 32 := 1#32
  let arg15 : BitVec 32 := Scf.iv c0_i32_475 c1_i32_477 k0_t4
  let v2336 : Index := Scalar.indexCast arg15
  let c896 : Index := 896#32
  ![2, v2336.toNat, 896]
def k0_off1503 (k0_t4 : Fin k0_t4_loop.trips) : Fin 3 → Nat :=
  let c2_i32_1468 : BitVec 32 := 2#32
  let v2339 : Index := Scalar.indexCast c2_i32_1468
  let c0_i32_475 : BitVec 32 := 0#32
  let c1_i32_477 : BitVec 32 := 1#32
  let arg15 : BitVec 32 := Scf.iv c0_i32_475 c1_i32_477 k0_t4
  let v2340 : Index := Scalar.indexCast arg15
  let c912 : Index := 912#32
  ![2, v2340.toNat, 912]
def k0_off1504 (k0_t4 : Fin k0_t4_loop.trips) : Fin 3 → Nat :=
  let c2_i32_1469 : BitVec 32 := 2#32
  let v2343 : Index := Scalar.indexCast c2_i32_1469
  let c0_i32_475 : BitVec 32 := 0#32
  let c1_i32_477 : BitVec 32 := 1#32
  let arg15 : BitVec 32 := Scf.iv c0_i32_475 c1_i32_477 k0_t4
  let v2344 : Index := Scalar.indexCast arg15
  let c928 : Index := 928#32
  ![2, v2344.toNat, 928]
def k0_off1505 (k0_t4 : Fin k0_t4_loop.trips) : Fin 3 → Nat :=
  let c2_i32_1470 : BitVec 32 := 2#32
  let v2347 : Index := Scalar.indexCast c2_i32_1470
  let c0_i32_475 : BitVec 32 := 0#32
  let c1_i32_477 : BitVec 32 := 1#32
  let arg15 : BitVec 32 := Scf.iv c0_i32_475 c1_i32_477 k0_t4
  let v2348 : Index := Scalar.indexCast arg15
  let c944 : Index := 944#32
  ![2, v2348.toNat, 944]
def k0_off1506 (k0_t4 : Fin k0_t4_loop.trips) : Fin 3 → Nat :=
  let c2_i32_1471 : BitVec 32 := 2#32
  let v2351 : Index := Scalar.indexCast c2_i32_1471
  let c0_i32_475 : BitVec 32 := 0#32
  let c1_i32_477 : BitVec 32 := 1#32
  let arg15 : BitVec 32 := Scf.iv c0_i32_475 c1_i32_477 k0_t4
  let v2352 : Index := Scalar.indexCast arg15
  let c960 : Index := 960#32
  ![2, v2352.toNat, 960]
def k0_off1507 (k0_t4 : Fin k0_t4_loop.trips) : Fin 3 → Nat :=
  let c2_i32_1472 : BitVec 32 := 2#32
  let v2355 : Index := Scalar.indexCast c2_i32_1472
  let c0_i32_475 : BitVec 32 := 0#32
  let c1_i32_477 : BitVec 32 := 1#32
  let arg15 : BitVec 32 := Scf.iv c0_i32_475 c1_i32_477 k0_t4
  let v2356 : Index := Scalar.indexCast arg15
  let c976 : Index := 976#32
  ![2, v2356.toNat, 976]
def k0_off1508 (k0_t4 : Fin k0_t4_loop.trips) : Fin 3 → Nat :=
  let c2_i32_1473 : BitVec 32 := 2#32
  let v2359 : Index := Scalar.indexCast c2_i32_1473
  let c0_i32_475 : BitVec 32 := 0#32
  let c1_i32_477 : BitVec 32 := 1#32
  let arg15 : BitVec 32 := Scf.iv c0_i32_475 c1_i32_477 k0_t4
  let v2360 : Index := Scalar.indexCast arg15
  let c992 : Index := 992#32
  ![2, v2360.toNat, 992]
def k0_off1509 (k0_t4 : Fin k0_t4_loop.trips) : Fin 3 → Nat :=
  let c2_i32_1474 : BitVec 32 := 2#32
  let v2363 : Index := Scalar.indexCast c2_i32_1474
  let c0_i32_475 : BitVec 32 := 0#32
  let c1_i32_477 : BitVec 32 := 1#32
  let arg15 : BitVec 32 := Scf.iv c0_i32_475 c1_i32_477 k0_t4
  let v2364 : Index := Scalar.indexCast arg15
  let c1008 : Index := 1008#32
  ![2, v2364.toNat, 1008]
def k0_off1510 (k0_t4 : Fin k0_t4_loop.trips) : Fin 4 → Nat :=
  let c2_i32_1475 : BitVec 32 := 2#32
  let v2367 : Index := Scalar.indexCast c2_i32_1475
  let c0_i32_1476 : BitVec 32 := 0#32
  let v2368 : Index := Scalar.indexCast c0_i32_1476
  let c0_i32_475 : BitVec 32 := 0#32
  let c1_i32_477 : BitVec 32 := 1#32
  let arg15 : BitVec 32 := Scf.iv c0_i32_475 c1_i32_477 k0_t4
  let v2369 : Index := Scalar.indexCast arg15
  let c512_1477 : Index := 512#32
  ![2, 0, v2369.toNat, 512]
def k0_off1511 (k0_t4 : Fin k0_t4_loop.trips) : Fin 4 → Nat :=
  let c0_i32_1478 : BitVec 32 := 0#32
  let v2373 : Index := Scalar.indexCast c0_i32_1478
  let c0_i32_1479 : BitVec 32 := 0#32
  let v2374 : Index := Scalar.indexCast c0_i32_1479
  let c0_i32_475 : BitVec 32 := 0#32
  let c1_i32_477 : BitVec 32 := 1#32
  let arg15 : BitVec 32 := Scf.iv c0_i32_475 c1_i32_477 k0_t4
  let v2375 : Index := Scalar.indexCast arg15
  let c512_1480 : Index := 512#32
  ![0, 0, v2375.toNat, 512]
def k0_off1512 (k0_t4 : Fin k0_t4_loop.trips) : Fin 4 → Nat :=
  let c2_i32_1481 : BitVec 32 := 2#32
  let v2379 : Index := Scalar.indexCast c2_i32_1481
  let c0_i32_1482 : BitVec 32 := 0#32
  let v2380 : Index := Scalar.indexCast c0_i32_1482
  let c0_i32_475 : BitVec 32 := 0#32
  let c1_i32_477 : BitVec 32 := 1#32
  let arg15 : BitVec 32 := Scf.iv c0_i32_475 c1_i32_477 k0_t4
  let v2381 : Index := Scalar.indexCast arg15
  let c528_1483 : Index := 528#32
  ![2, 0, v2381.toNat, 528]
def k0_off1513 (k0_t4 : Fin k0_t4_loop.trips) : Fin 4 → Nat :=
  let c0_i32_1484 : BitVec 32 := 0#32
  let v2385 : Index := Scalar.indexCast c0_i32_1484
  let c0_i32_1485 : BitVec 32 := 0#32
  let v2386 : Index := Scalar.indexCast c0_i32_1485
  let c0_i32_475 : BitVec 32 := 0#32
  let c1_i32_477 : BitVec 32 := 1#32
  let arg15 : BitVec 32 := Scf.iv c0_i32_475 c1_i32_477 k0_t4
  let v2387 : Index := Scalar.indexCast arg15
  let c528_1486 : Index := 528#32
  ![0, 0, v2387.toNat, 528]
def k0_off1514 (k0_t4 : Fin k0_t4_loop.trips) : Fin 4 → Nat :=
  let c2_i32_1487 : BitVec 32 := 2#32
  let v2391 : Index := Scalar.indexCast c2_i32_1487
  let c0_i32_1488 : BitVec 32 := 0#32
  let v2392 : Index := Scalar.indexCast c0_i32_1488
  let c0_i32_475 : BitVec 32 := 0#32
  let c1_i32_477 : BitVec 32 := 1#32
  let arg15 : BitVec 32 := Scf.iv c0_i32_475 c1_i32_477 k0_t4
  let v2393 : Index := Scalar.indexCast arg15
  let c544_1489 : Index := 544#32
  ![2, 0, v2393.toNat, 544]
def k0_off1515 (k0_t4 : Fin k0_t4_loop.trips) : Fin 4 → Nat :=
  let c0_i32_1490 : BitVec 32 := 0#32
  let v2397 : Index := Scalar.indexCast c0_i32_1490
  let c0_i32_1491 : BitVec 32 := 0#32
  let v2398 : Index := Scalar.indexCast c0_i32_1491
  let c0_i32_475 : BitVec 32 := 0#32
  let c1_i32_477 : BitVec 32 := 1#32
  let arg15 : BitVec 32 := Scf.iv c0_i32_475 c1_i32_477 k0_t4
  let v2399 : Index := Scalar.indexCast arg15
  let c544_1492 : Index := 544#32
  ![0, 0, v2399.toNat, 544]
def k0_off1516 (k0_t4 : Fin k0_t4_loop.trips) : Fin 4 → Nat :=
  let c2_i32_1493 : BitVec 32 := 2#32
  let v2403 : Index := Scalar.indexCast c2_i32_1493
  let c0_i32_1494 : BitVec 32 := 0#32
  let v2404 : Index := Scalar.indexCast c0_i32_1494
  let c0_i32_475 : BitVec 32 := 0#32
  let c1_i32_477 : BitVec 32 := 1#32
  let arg15 : BitVec 32 := Scf.iv c0_i32_475 c1_i32_477 k0_t4
  let v2405 : Index := Scalar.indexCast arg15
  let c560_1495 : Index := 560#32
  ![2, 0, v2405.toNat, 560]
def k0_off1517 (k0_t4 : Fin k0_t4_loop.trips) : Fin 4 → Nat :=
  let c0_i32_1496 : BitVec 32 := 0#32
  let v2409 : Index := Scalar.indexCast c0_i32_1496
  let c0_i32_1497 : BitVec 32 := 0#32
  let v2410 : Index := Scalar.indexCast c0_i32_1497
  let c0_i32_475 : BitVec 32 := 0#32
  let c1_i32_477 : BitVec 32 := 1#32
  let arg15 : BitVec 32 := Scf.iv c0_i32_475 c1_i32_477 k0_t4
  let v2411 : Index := Scalar.indexCast arg15
  let c560_1498 : Index := 560#32
  ![0, 0, v2411.toNat, 560]
def k0_off1518 (k0_t4 : Fin k0_t4_loop.trips) : Fin 4 → Nat :=
  let c2_i32_1499 : BitVec 32 := 2#32
  let v2415 : Index := Scalar.indexCast c2_i32_1499
  let c0_i32_1500 : BitVec 32 := 0#32
  let v2416 : Index := Scalar.indexCast c0_i32_1500
  let c0_i32_475 : BitVec 32 := 0#32
  let c1_i32_477 : BitVec 32 := 1#32
  let arg15 : BitVec 32 := Scf.iv c0_i32_475 c1_i32_477 k0_t4
  let v2417 : Index := Scalar.indexCast arg15
  let c576_1501 : Index := 576#32
  ![2, 0, v2417.toNat, 576]
def k0_off1519 (k0_t4 : Fin k0_t4_loop.trips) : Fin 4 → Nat :=
  let c0_i32_1502 : BitVec 32 := 0#32
  let v2421 : Index := Scalar.indexCast c0_i32_1502
  let c0_i32_1503 : BitVec 32 := 0#32
  let v2422 : Index := Scalar.indexCast c0_i32_1503
  let c0_i32_475 : BitVec 32 := 0#32
  let c1_i32_477 : BitVec 32 := 1#32
  let arg15 : BitVec 32 := Scf.iv c0_i32_475 c1_i32_477 k0_t4
  let v2423 : Index := Scalar.indexCast arg15
  let c576_1504 : Index := 576#32
  ![0, 0, v2423.toNat, 576]
def k0_off1520 (k0_t4 : Fin k0_t4_loop.trips) : Fin 4 → Nat :=
  let c2_i32_1505 : BitVec 32 := 2#32
  let v2427 : Index := Scalar.indexCast c2_i32_1505
  let c0_i32_1506 : BitVec 32 := 0#32
  let v2428 : Index := Scalar.indexCast c0_i32_1506
  let c0_i32_475 : BitVec 32 := 0#32
  let c1_i32_477 : BitVec 32 := 1#32
  let arg15 : BitVec 32 := Scf.iv c0_i32_475 c1_i32_477 k0_t4
  let v2429 : Index := Scalar.indexCast arg15
  let c592_1507 : Index := 592#32
  ![2, 0, v2429.toNat, 592]
def k0_off1521 (k0_t4 : Fin k0_t4_loop.trips) : Fin 4 → Nat :=
  let c0_i32_1508 : BitVec 32 := 0#32
  let v2433 : Index := Scalar.indexCast c0_i32_1508
  let c0_i32_1509 : BitVec 32 := 0#32
  let v2434 : Index := Scalar.indexCast c0_i32_1509
  let c0_i32_475 : BitVec 32 := 0#32
  let c1_i32_477 : BitVec 32 := 1#32
  let arg15 : BitVec 32 := Scf.iv c0_i32_475 c1_i32_477 k0_t4
  let v2435 : Index := Scalar.indexCast arg15
  let c592_1510 : Index := 592#32
  ![0, 0, v2435.toNat, 592]
def k0_off1522 (k0_t4 : Fin k0_t4_loop.trips) : Fin 4 → Nat :=
  let c2_i32_1511 : BitVec 32 := 2#32
  let v2439 : Index := Scalar.indexCast c2_i32_1511
  let c0_i32_1512 : BitVec 32 := 0#32
  let v2440 : Index := Scalar.indexCast c0_i32_1512
  let c0_i32_475 : BitVec 32 := 0#32
  let c1_i32_477 : BitVec 32 := 1#32
  let arg15 : BitVec 32 := Scf.iv c0_i32_475 c1_i32_477 k0_t4
  let v2441 : Index := Scalar.indexCast arg15
  let c608_1513 : Index := 608#32
  ![2, 0, v2441.toNat, 608]
def k0_off1523 (k0_t4 : Fin k0_t4_loop.trips) : Fin 4 → Nat :=
  let c0_i32_1514 : BitVec 32 := 0#32
  let v2445 : Index := Scalar.indexCast c0_i32_1514
  let c0_i32_1515 : BitVec 32 := 0#32
  let v2446 : Index := Scalar.indexCast c0_i32_1515
  let c0_i32_475 : BitVec 32 := 0#32
  let c1_i32_477 : BitVec 32 := 1#32
  let arg15 : BitVec 32 := Scf.iv c0_i32_475 c1_i32_477 k0_t4
  let v2447 : Index := Scalar.indexCast arg15
  let c608_1516 : Index := 608#32
  ![0, 0, v2447.toNat, 608]
def k0_off1524 (k0_t4 : Fin k0_t4_loop.trips) : Fin 4 → Nat :=
  let c2_i32_1517 : BitVec 32 := 2#32
  let v2451 : Index := Scalar.indexCast c2_i32_1517
  let c0_i32_1518 : BitVec 32 := 0#32
  let v2452 : Index := Scalar.indexCast c0_i32_1518
  let c0_i32_475 : BitVec 32 := 0#32
  let c1_i32_477 : BitVec 32 := 1#32
  let arg15 : BitVec 32 := Scf.iv c0_i32_475 c1_i32_477 k0_t4
  let v2453 : Index := Scalar.indexCast arg15
  let c624_1519 : Index := 624#32
  ![2, 0, v2453.toNat, 624]
def k0_off1525 (k0_t4 : Fin k0_t4_loop.trips) : Fin 4 → Nat :=
  let c0_i32_1520 : BitVec 32 := 0#32
  let v2457 : Index := Scalar.indexCast c0_i32_1520
  let c0_i32_1521 : BitVec 32 := 0#32
  let v2458 : Index := Scalar.indexCast c0_i32_1521
  let c0_i32_475 : BitVec 32 := 0#32
  let c1_i32_477 : BitVec 32 := 1#32
  let arg15 : BitVec 32 := Scf.iv c0_i32_475 c1_i32_477 k0_t4
  let v2459 : Index := Scalar.indexCast arg15
  let c624_1522 : Index := 624#32
  ![0, 0, v2459.toNat, 624]
def k0_off1526 (k0_t4 : Fin k0_t4_loop.trips) : Fin 4 → Nat :=
  let c2_i32_1523 : BitVec 32 := 2#32
  let v2463 : Index := Scalar.indexCast c2_i32_1523
  let c0_i32_1524 : BitVec 32 := 0#32
  let v2464 : Index := Scalar.indexCast c0_i32_1524
  let c0_i32_475 : BitVec 32 := 0#32
  let c1_i32_477 : BitVec 32 := 1#32
  let arg15 : BitVec 32 := Scf.iv c0_i32_475 c1_i32_477 k0_t4
  let v2465 : Index := Scalar.indexCast arg15
  let c640_1525 : Index := 640#32
  ![2, 0, v2465.toNat, 640]
def k0_off1527 (k0_t4 : Fin k0_t4_loop.trips) : Fin 4 → Nat :=
  let c0_i32_1526 : BitVec 32 := 0#32
  let v2469 : Index := Scalar.indexCast c0_i32_1526
  let c0_i32_1527 : BitVec 32 := 0#32
  let v2470 : Index := Scalar.indexCast c0_i32_1527
  let c0_i32_475 : BitVec 32 := 0#32
  let c1_i32_477 : BitVec 32 := 1#32
  let arg15 : BitVec 32 := Scf.iv c0_i32_475 c1_i32_477 k0_t4
  let v2471 : Index := Scalar.indexCast arg15
  let c640_1528 : Index := 640#32
  ![0, 0, v2471.toNat, 640]
def k0_off1528 (k0_t4 : Fin k0_t4_loop.trips) : Fin 4 → Nat :=
  let c2_i32_1529 : BitVec 32 := 2#32
  let v2475 : Index := Scalar.indexCast c2_i32_1529
  let c0_i32_1530 : BitVec 32 := 0#32
  let v2476 : Index := Scalar.indexCast c0_i32_1530
  let c0_i32_475 : BitVec 32 := 0#32
  let c1_i32_477 : BitVec 32 := 1#32
  let arg15 : BitVec 32 := Scf.iv c0_i32_475 c1_i32_477 k0_t4
  let v2477 : Index := Scalar.indexCast arg15
  let c656_1531 : Index := 656#32
  ![2, 0, v2477.toNat, 656]
def k0_off1529 (k0_t4 : Fin k0_t4_loop.trips) : Fin 4 → Nat :=
  let c0_i32_1532 : BitVec 32 := 0#32
  let v2481 : Index := Scalar.indexCast c0_i32_1532
  let c0_i32_1533 : BitVec 32 := 0#32
  let v2482 : Index := Scalar.indexCast c0_i32_1533
  let c0_i32_475 : BitVec 32 := 0#32
  let c1_i32_477 : BitVec 32 := 1#32
  let arg15 : BitVec 32 := Scf.iv c0_i32_475 c1_i32_477 k0_t4
  let v2483 : Index := Scalar.indexCast arg15
  let c656_1534 : Index := 656#32
  ![0, 0, v2483.toNat, 656]
def k0_off1530 (k0_t4 : Fin k0_t4_loop.trips) : Fin 4 → Nat :=
  let c2_i32_1535 : BitVec 32 := 2#32
  let v2487 : Index := Scalar.indexCast c2_i32_1535
  let c0_i32_1536 : BitVec 32 := 0#32
  let v2488 : Index := Scalar.indexCast c0_i32_1536
  let c0_i32_475 : BitVec 32 := 0#32
  let c1_i32_477 : BitVec 32 := 1#32
  let arg15 : BitVec 32 := Scf.iv c0_i32_475 c1_i32_477 k0_t4
  let v2489 : Index := Scalar.indexCast arg15
  let c672_1537 : Index := 672#32
  ![2, 0, v2489.toNat, 672]
def k0_off1531 (k0_t4 : Fin k0_t4_loop.trips) : Fin 4 → Nat :=
  let c0_i32_1538 : BitVec 32 := 0#32
  let v2493 : Index := Scalar.indexCast c0_i32_1538
  let c0_i32_1539 : BitVec 32 := 0#32
  let v2494 : Index := Scalar.indexCast c0_i32_1539
  let c0_i32_475 : BitVec 32 := 0#32
  let c1_i32_477 : BitVec 32 := 1#32
  let arg15 : BitVec 32 := Scf.iv c0_i32_475 c1_i32_477 k0_t4
  let v2495 : Index := Scalar.indexCast arg15
  let c672_1540 : Index := 672#32
  ![0, 0, v2495.toNat, 672]
def k0_off1532 (k0_t4 : Fin k0_t4_loop.trips) : Fin 4 → Nat :=
  let c2_i32_1541 : BitVec 32 := 2#32
  let v2499 : Index := Scalar.indexCast c2_i32_1541
  let c0_i32_1542 : BitVec 32 := 0#32
  let v2500 : Index := Scalar.indexCast c0_i32_1542
  let c0_i32_475 : BitVec 32 := 0#32
  let c1_i32_477 : BitVec 32 := 1#32
  let arg15 : BitVec 32 := Scf.iv c0_i32_475 c1_i32_477 k0_t4
  let v2501 : Index := Scalar.indexCast arg15
  let c688_1543 : Index := 688#32
  ![2, 0, v2501.toNat, 688]
def k0_off1533 (k0_t4 : Fin k0_t4_loop.trips) : Fin 4 → Nat :=
  let c0_i32_1544 : BitVec 32 := 0#32
  let v2505 : Index := Scalar.indexCast c0_i32_1544
  let c0_i32_1545 : BitVec 32 := 0#32
  let v2506 : Index := Scalar.indexCast c0_i32_1545
  let c0_i32_475 : BitVec 32 := 0#32
  let c1_i32_477 : BitVec 32 := 1#32
  let arg15 : BitVec 32 := Scf.iv c0_i32_475 c1_i32_477 k0_t4
  let v2507 : Index := Scalar.indexCast arg15
  let c688_1546 : Index := 688#32
  ![0, 0, v2507.toNat, 688]
def k0_off1534 (k0_t4 : Fin k0_t4_loop.trips) : Fin 4 → Nat :=
  let c2_i32_1547 : BitVec 32 := 2#32
  let v2511 : Index := Scalar.indexCast c2_i32_1547
  let c0_i32_1548 : BitVec 32 := 0#32
  let v2512 : Index := Scalar.indexCast c0_i32_1548
  let c0_i32_475 : BitVec 32 := 0#32
  let c1_i32_477 : BitVec 32 := 1#32
  let arg15 : BitVec 32 := Scf.iv c0_i32_475 c1_i32_477 k0_t4
  let v2513 : Index := Scalar.indexCast arg15
  let c704_1549 : Index := 704#32
  ![2, 0, v2513.toNat, 704]
def k0_off1535 (k0_t4 : Fin k0_t4_loop.trips) : Fin 4 → Nat :=
  let c0_i32_1550 : BitVec 32 := 0#32
  let v2517 : Index := Scalar.indexCast c0_i32_1550
  let c0_i32_1551 : BitVec 32 := 0#32
  let v2518 : Index := Scalar.indexCast c0_i32_1551
  let c0_i32_475 : BitVec 32 := 0#32
  let c1_i32_477 : BitVec 32 := 1#32
  let arg15 : BitVec 32 := Scf.iv c0_i32_475 c1_i32_477 k0_t4
  let v2519 : Index := Scalar.indexCast arg15
  let c704_1552 : Index := 704#32
  ![0, 0, v2519.toNat, 704]
def k0_off1536 (k0_t4 : Fin k0_t4_loop.trips) : Fin 4 → Nat :=
  let c2_i32_1553 : BitVec 32 := 2#32
  let v2523 : Index := Scalar.indexCast c2_i32_1553
  let c0_i32_1554 : BitVec 32 := 0#32
  let v2524 : Index := Scalar.indexCast c0_i32_1554
  let c0_i32_475 : BitVec 32 := 0#32
  let c1_i32_477 : BitVec 32 := 1#32
  let arg15 : BitVec 32 := Scf.iv c0_i32_475 c1_i32_477 k0_t4
  let v2525 : Index := Scalar.indexCast arg15
  let c720_1555 : Index := 720#32
  ![2, 0, v2525.toNat, 720]
def k0_off1537 (k0_t4 : Fin k0_t4_loop.trips) : Fin 4 → Nat :=
  let c0_i32_1556 : BitVec 32 := 0#32
  let v2529 : Index := Scalar.indexCast c0_i32_1556
  let c0_i32_1557 : BitVec 32 := 0#32
  let v2530 : Index := Scalar.indexCast c0_i32_1557
  let c0_i32_475 : BitVec 32 := 0#32
  let c1_i32_477 : BitVec 32 := 1#32
  let arg15 : BitVec 32 := Scf.iv c0_i32_475 c1_i32_477 k0_t4
  let v2531 : Index := Scalar.indexCast arg15
  let c720_1558 : Index := 720#32
  ![0, 0, v2531.toNat, 720]
def k0_off1538 (k0_t4 : Fin k0_t4_loop.trips) : Fin 4 → Nat :=
  let c2_i32_1559 : BitVec 32 := 2#32
  let v2535 : Index := Scalar.indexCast c2_i32_1559
  let c0_i32_1560 : BitVec 32 := 0#32
  let v2536 : Index := Scalar.indexCast c0_i32_1560
  let c0_i32_475 : BitVec 32 := 0#32
  let c1_i32_477 : BitVec 32 := 1#32
  let arg15 : BitVec 32 := Scf.iv c0_i32_475 c1_i32_477 k0_t4
  let v2537 : Index := Scalar.indexCast arg15
  let c736_1561 : Index := 736#32
  ![2, 0, v2537.toNat, 736]
def k0_off1539 (k0_t4 : Fin k0_t4_loop.trips) : Fin 4 → Nat :=
  let c0_i32_1562 : BitVec 32 := 0#32
  let v2541 : Index := Scalar.indexCast c0_i32_1562
  let c0_i32_1563 : BitVec 32 := 0#32
  let v2542 : Index := Scalar.indexCast c0_i32_1563
  let c0_i32_475 : BitVec 32 := 0#32
  let c1_i32_477 : BitVec 32 := 1#32
  let arg15 : BitVec 32 := Scf.iv c0_i32_475 c1_i32_477 k0_t4
  let v2543 : Index := Scalar.indexCast arg15
  let c736_1564 : Index := 736#32
  ![0, 0, v2543.toNat, 736]
def k0_off1540 (k0_t4 : Fin k0_t4_loop.trips) : Fin 4 → Nat :=
  let c2_i32_1565 : BitVec 32 := 2#32
  let v2547 : Index := Scalar.indexCast c2_i32_1565
  let c0_i32_1566 : BitVec 32 := 0#32
  let v2548 : Index := Scalar.indexCast c0_i32_1566
  let c0_i32_475 : BitVec 32 := 0#32
  let c1_i32_477 : BitVec 32 := 1#32
  let arg15 : BitVec 32 := Scf.iv c0_i32_475 c1_i32_477 k0_t4
  let v2549 : Index := Scalar.indexCast arg15
  let c752_1567 : Index := 752#32
  ![2, 0, v2549.toNat, 752]
def k0_off1541 (k0_t4 : Fin k0_t4_loop.trips) : Fin 4 → Nat :=
  let c0_i32_1568 : BitVec 32 := 0#32
  let v2553 : Index := Scalar.indexCast c0_i32_1568
  let c0_i32_1569 : BitVec 32 := 0#32
  let v2554 : Index := Scalar.indexCast c0_i32_1569
  let c0_i32_475 : BitVec 32 := 0#32
  let c1_i32_477 : BitVec 32 := 1#32
  let arg15 : BitVec 32 := Scf.iv c0_i32_475 c1_i32_477 k0_t4
  let v2555 : Index := Scalar.indexCast arg15
  let c752_1570 : Index := 752#32
  ![0, 0, v2555.toNat, 752]
def k0_off1542 (k0_t4 : Fin k0_t4_loop.trips) : Fin 4 → Nat :=
  let c2_i32_1571 : BitVec 32 := 2#32
  let v2559 : Index := Scalar.indexCast c2_i32_1571
  let c0_i32_1572 : BitVec 32 := 0#32
  let v2560 : Index := Scalar.indexCast c0_i32_1572
  let c0_i32_475 : BitVec 32 := 0#32
  let c1_i32_477 : BitVec 32 := 1#32
  let arg15 : BitVec 32 := Scf.iv c0_i32_475 c1_i32_477 k0_t4
  let v2561 : Index := Scalar.indexCast arg15
  let c768_1573 : Index := 768#32
  ![2, 0, v2561.toNat, 768]
def k0_off1543 (k0_t4 : Fin k0_t4_loop.trips) : Fin 4 → Nat :=
  let c0_i32_1574 : BitVec 32 := 0#32
  let v2565 : Index := Scalar.indexCast c0_i32_1574
  let c0_i32_1575 : BitVec 32 := 0#32
  let v2566 : Index := Scalar.indexCast c0_i32_1575
  let c0_i32_475 : BitVec 32 := 0#32
  let c1_i32_477 : BitVec 32 := 1#32
  let arg15 : BitVec 32 := Scf.iv c0_i32_475 c1_i32_477 k0_t4
  let v2567 : Index := Scalar.indexCast arg15
  let c768_1576 : Index := 768#32
  ![0, 0, v2567.toNat, 768]
def k0_off1544 (k0_t4 : Fin k0_t4_loop.trips) : Fin 4 → Nat :=
  let c2_i32_1577 : BitVec 32 := 2#32
  let v2571 : Index := Scalar.indexCast c2_i32_1577
  let c0_i32_1578 : BitVec 32 := 0#32
  let v2572 : Index := Scalar.indexCast c0_i32_1578
  let c0_i32_475 : BitVec 32 := 0#32
  let c1_i32_477 : BitVec 32 := 1#32
  let arg15 : BitVec 32 := Scf.iv c0_i32_475 c1_i32_477 k0_t4
  let v2573 : Index := Scalar.indexCast arg15
  let c784_1579 : Index := 784#32
  ![2, 0, v2573.toNat, 784]
def k0_off1545 (k0_t4 : Fin k0_t4_loop.trips) : Fin 4 → Nat :=
  let c0_i32_1580 : BitVec 32 := 0#32
  let v2577 : Index := Scalar.indexCast c0_i32_1580
  let c0_i32_1581 : BitVec 32 := 0#32
  let v2578 : Index := Scalar.indexCast c0_i32_1581
  let c0_i32_475 : BitVec 32 := 0#32
  let c1_i32_477 : BitVec 32 := 1#32
  let arg15 : BitVec 32 := Scf.iv c0_i32_475 c1_i32_477 k0_t4
  let v2579 : Index := Scalar.indexCast arg15
  let c784_1582 : Index := 784#32
  ![0, 0, v2579.toNat, 784]
def k0_off1546 (k0_t4 : Fin k0_t4_loop.trips) : Fin 4 → Nat :=
  let c2_i32_1583 : BitVec 32 := 2#32
  let v2583 : Index := Scalar.indexCast c2_i32_1583
  let c0_i32_1584 : BitVec 32 := 0#32
  let v2584 : Index := Scalar.indexCast c0_i32_1584
  let c0_i32_475 : BitVec 32 := 0#32
  let c1_i32_477 : BitVec 32 := 1#32
  let arg15 : BitVec 32 := Scf.iv c0_i32_475 c1_i32_477 k0_t4
  let v2585 : Index := Scalar.indexCast arg15
  let c800_1585 : Index := 800#32
  ![2, 0, v2585.toNat, 800]
def k0_off1547 (k0_t4 : Fin k0_t4_loop.trips) : Fin 4 → Nat :=
  let c0_i32_1586 : BitVec 32 := 0#32
  let v2589 : Index := Scalar.indexCast c0_i32_1586
  let c0_i32_1587 : BitVec 32 := 0#32
  let v2590 : Index := Scalar.indexCast c0_i32_1587
  let c0_i32_475 : BitVec 32 := 0#32
  let c1_i32_477 : BitVec 32 := 1#32
  let arg15 : BitVec 32 := Scf.iv c0_i32_475 c1_i32_477 k0_t4
  let v2591 : Index := Scalar.indexCast arg15
  let c800_1588 : Index := 800#32
  ![0, 0, v2591.toNat, 800]
def k0_off1548 (k0_t4 : Fin k0_t4_loop.trips) : Fin 4 → Nat :=
  let c2_i32_1589 : BitVec 32 := 2#32
  let v2595 : Index := Scalar.indexCast c2_i32_1589
  let c0_i32_1590 : BitVec 32 := 0#32
  let v2596 : Index := Scalar.indexCast c0_i32_1590
  let c0_i32_475 : BitVec 32 := 0#32
  let c1_i32_477 : BitVec 32 := 1#32
  let arg15 : BitVec 32 := Scf.iv c0_i32_475 c1_i32_477 k0_t4
  let v2597 : Index := Scalar.indexCast arg15
  let c816_1591 : Index := 816#32
  ![2, 0, v2597.toNat, 816]
def k0_off1549 (k0_t4 : Fin k0_t4_loop.trips) : Fin 4 → Nat :=
  let c0_i32_1592 : BitVec 32 := 0#32
  let v2601 : Index := Scalar.indexCast c0_i32_1592
  let c0_i32_1593 : BitVec 32 := 0#32
  let v2602 : Index := Scalar.indexCast c0_i32_1593
  let c0_i32_475 : BitVec 32 := 0#32
  let c1_i32_477 : BitVec 32 := 1#32
  let arg15 : BitVec 32 := Scf.iv c0_i32_475 c1_i32_477 k0_t4
  let v2603 : Index := Scalar.indexCast arg15
  let c816_1594 : Index := 816#32
  ![0, 0, v2603.toNat, 816]
def k0_off1550 (k0_t4 : Fin k0_t4_loop.trips) : Fin 4 → Nat :=
  let c2_i32_1595 : BitVec 32 := 2#32
  let v2607 : Index := Scalar.indexCast c2_i32_1595
  let c0_i32_1596 : BitVec 32 := 0#32
  let v2608 : Index := Scalar.indexCast c0_i32_1596
  let c0_i32_475 : BitVec 32 := 0#32
  let c1_i32_477 : BitVec 32 := 1#32
  let arg15 : BitVec 32 := Scf.iv c0_i32_475 c1_i32_477 k0_t4
  let v2609 : Index := Scalar.indexCast arg15
  let c832_1597 : Index := 832#32
  ![2, 0, v2609.toNat, 832]
def k0_off1551 (k0_t4 : Fin k0_t4_loop.trips) : Fin 4 → Nat :=
  let c0_i32_1598 : BitVec 32 := 0#32
  let v2613 : Index := Scalar.indexCast c0_i32_1598
  let c0_i32_1599 : BitVec 32 := 0#32
  let v2614 : Index := Scalar.indexCast c0_i32_1599
  let c0_i32_475 : BitVec 32 := 0#32
  let c1_i32_477 : BitVec 32 := 1#32
  let arg15 : BitVec 32 := Scf.iv c0_i32_475 c1_i32_477 k0_t4
  let v2615 : Index := Scalar.indexCast arg15
  let c832_1600 : Index := 832#32
  ![0, 0, v2615.toNat, 832]
def k0_off1552 (k0_t4 : Fin k0_t4_loop.trips) : Fin 4 → Nat :=
  let c2_i32_1601 : BitVec 32 := 2#32
  let v2619 : Index := Scalar.indexCast c2_i32_1601
  let c0_i32_1602 : BitVec 32 := 0#32
  let v2620 : Index := Scalar.indexCast c0_i32_1602
  let c0_i32_475 : BitVec 32 := 0#32
  let c1_i32_477 : BitVec 32 := 1#32
  let arg15 : BitVec 32 := Scf.iv c0_i32_475 c1_i32_477 k0_t4
  let v2621 : Index := Scalar.indexCast arg15
  let c848_1603 : Index := 848#32
  ![2, 0, v2621.toNat, 848]
def k0_off1553 (k0_t4 : Fin k0_t4_loop.trips) : Fin 4 → Nat :=
  let c0_i32_1604 : BitVec 32 := 0#32
  let v2625 : Index := Scalar.indexCast c0_i32_1604
  let c0_i32_1605 : BitVec 32 := 0#32
  let v2626 : Index := Scalar.indexCast c0_i32_1605
  let c0_i32_475 : BitVec 32 := 0#32
  let c1_i32_477 : BitVec 32 := 1#32
  let arg15 : BitVec 32 := Scf.iv c0_i32_475 c1_i32_477 k0_t4
  let v2627 : Index := Scalar.indexCast arg15
  let c848_1606 : Index := 848#32
  ![0, 0, v2627.toNat, 848]
def k0_off1554 (k0_t4 : Fin k0_t4_loop.trips) : Fin 4 → Nat :=
  let c2_i32_1607 : BitVec 32 := 2#32
  let v2631 : Index := Scalar.indexCast c2_i32_1607
  let c0_i32_1608 : BitVec 32 := 0#32
  let v2632 : Index := Scalar.indexCast c0_i32_1608
  let c0_i32_475 : BitVec 32 := 0#32
  let c1_i32_477 : BitVec 32 := 1#32
  let arg15 : BitVec 32 := Scf.iv c0_i32_475 c1_i32_477 k0_t4
  let v2633 : Index := Scalar.indexCast arg15
  let c864_1609 : Index := 864#32
  ![2, 0, v2633.toNat, 864]
def k0_off1555 (k0_t4 : Fin k0_t4_loop.trips) : Fin 4 → Nat :=
  let c0_i32_1610 : BitVec 32 := 0#32
  let v2637 : Index := Scalar.indexCast c0_i32_1610
  let c0_i32_1611 : BitVec 32 := 0#32
  let v2638 : Index := Scalar.indexCast c0_i32_1611
  let c0_i32_475 : BitVec 32 := 0#32
  let c1_i32_477 : BitVec 32 := 1#32
  let arg15 : BitVec 32 := Scf.iv c0_i32_475 c1_i32_477 k0_t4
  let v2639 : Index := Scalar.indexCast arg15
  let c864_1612 : Index := 864#32
  ![0, 0, v2639.toNat, 864]
def k0_off1556 (k0_t4 : Fin k0_t4_loop.trips) : Fin 4 → Nat :=
  let c2_i32_1613 : BitVec 32 := 2#32
  let v2643 : Index := Scalar.indexCast c2_i32_1613
  let c0_i32_1614 : BitVec 32 := 0#32
  let v2644 : Index := Scalar.indexCast c0_i32_1614
  let c0_i32_475 : BitVec 32 := 0#32
  let c1_i32_477 : BitVec 32 := 1#32
  let arg15 : BitVec 32 := Scf.iv c0_i32_475 c1_i32_477 k0_t4
  let v2645 : Index := Scalar.indexCast arg15
  let c880_1615 : Index := 880#32
  ![2, 0, v2645.toNat, 880]
def k0_off1557 (k0_t4 : Fin k0_t4_loop.trips) : Fin 4 → Nat :=
  let c0_i32_1616 : BitVec 32 := 0#32
  let v2649 : Index := Scalar.indexCast c0_i32_1616
  let c0_i32_1617 : BitVec 32 := 0#32
  let v2650 : Index := Scalar.indexCast c0_i32_1617
  let c0_i32_475 : BitVec 32 := 0#32
  let c1_i32_477 : BitVec 32 := 1#32
  let arg15 : BitVec 32 := Scf.iv c0_i32_475 c1_i32_477 k0_t4
  let v2651 : Index := Scalar.indexCast arg15
  let c880_1618 : Index := 880#32
  ![0, 0, v2651.toNat, 880]
def k0_off1558 (k0_t4 : Fin k0_t4_loop.trips) : Fin 4 → Nat :=
  let c2_i32_1619 : BitVec 32 := 2#32
  let v2655 : Index := Scalar.indexCast c2_i32_1619
  let c0_i32_1620 : BitVec 32 := 0#32
  let v2656 : Index := Scalar.indexCast c0_i32_1620
  let c0_i32_475 : BitVec 32 := 0#32
  let c1_i32_477 : BitVec 32 := 1#32
  let arg15 : BitVec 32 := Scf.iv c0_i32_475 c1_i32_477 k0_t4
  let v2657 : Index := Scalar.indexCast arg15
  let c896_1621 : Index := 896#32
  ![2, 0, v2657.toNat, 896]
def k0_off1559 (k0_t4 : Fin k0_t4_loop.trips) : Fin 4 → Nat :=
  let c0_i32_1622 : BitVec 32 := 0#32
  let v2661 : Index := Scalar.indexCast c0_i32_1622
  let c0_i32_1623 : BitVec 32 := 0#32
  let v2662 : Index := Scalar.indexCast c0_i32_1623
  let c0_i32_475 : BitVec 32 := 0#32
  let c1_i32_477 : BitVec 32 := 1#32
  let arg15 : BitVec 32 := Scf.iv c0_i32_475 c1_i32_477 k0_t4
  let v2663 : Index := Scalar.indexCast arg15
  let c896_1624 : Index := 896#32
  ![0, 0, v2663.toNat, 896]
def k0_off1560 (k0_t4 : Fin k0_t4_loop.trips) : Fin 4 → Nat :=
  let c2_i32_1625 : BitVec 32 := 2#32
  let v2667 : Index := Scalar.indexCast c2_i32_1625
  let c0_i32_1626 : BitVec 32 := 0#32
  let v2668 : Index := Scalar.indexCast c0_i32_1626
  let c0_i32_475 : BitVec 32 := 0#32
  let c1_i32_477 : BitVec 32 := 1#32
  let arg15 : BitVec 32 := Scf.iv c0_i32_475 c1_i32_477 k0_t4
  let v2669 : Index := Scalar.indexCast arg15
  let c912_1627 : Index := 912#32
  ![2, 0, v2669.toNat, 912]
def k0_off1561 (k0_t4 : Fin k0_t4_loop.trips) : Fin 4 → Nat :=
  let c0_i32_1628 : BitVec 32 := 0#32
  let v2673 : Index := Scalar.indexCast c0_i32_1628
  let c0_i32_1629 : BitVec 32 := 0#32
  let v2674 : Index := Scalar.indexCast c0_i32_1629
  let c0_i32_475 : BitVec 32 := 0#32
  let c1_i32_477 : BitVec 32 := 1#32
  let arg15 : BitVec 32 := Scf.iv c0_i32_475 c1_i32_477 k0_t4
  let v2675 : Index := Scalar.indexCast arg15
  let c912_1630 : Index := 912#32
  ![0, 0, v2675.toNat, 912]
def k0_off1562 (k0_t4 : Fin k0_t4_loop.trips) : Fin 4 → Nat :=
  let c2_i32_1631 : BitVec 32 := 2#32
  let v2679 : Index := Scalar.indexCast c2_i32_1631
  let c0_i32_1632 : BitVec 32 := 0#32
  let v2680 : Index := Scalar.indexCast c0_i32_1632
  let c0_i32_475 : BitVec 32 := 0#32
  let c1_i32_477 : BitVec 32 := 1#32
  let arg15 : BitVec 32 := Scf.iv c0_i32_475 c1_i32_477 k0_t4
  let v2681 : Index := Scalar.indexCast arg15
  let c928_1633 : Index := 928#32
  ![2, 0, v2681.toNat, 928]
def k0_off1563 (k0_t4 : Fin k0_t4_loop.trips) : Fin 4 → Nat :=
  let c0_i32_1634 : BitVec 32 := 0#32
  let v2685 : Index := Scalar.indexCast c0_i32_1634
  let c0_i32_1635 : BitVec 32 := 0#32
  let v2686 : Index := Scalar.indexCast c0_i32_1635
  let c0_i32_475 : BitVec 32 := 0#32
  let c1_i32_477 : BitVec 32 := 1#32
  let arg15 : BitVec 32 := Scf.iv c0_i32_475 c1_i32_477 k0_t4
  let v2687 : Index := Scalar.indexCast arg15
  let c928_1636 : Index := 928#32
  ![0, 0, v2687.toNat, 928]
def k0_off1564 (k0_t4 : Fin k0_t4_loop.trips) : Fin 4 → Nat :=
  let c2_i32_1637 : BitVec 32 := 2#32
  let v2691 : Index := Scalar.indexCast c2_i32_1637
  let c0_i32_1638 : BitVec 32 := 0#32
  let v2692 : Index := Scalar.indexCast c0_i32_1638
  let c0_i32_475 : BitVec 32 := 0#32
  let c1_i32_477 : BitVec 32 := 1#32
  let arg15 : BitVec 32 := Scf.iv c0_i32_475 c1_i32_477 k0_t4
  let v2693 : Index := Scalar.indexCast arg15
  let c944_1639 : Index := 944#32
  ![2, 0, v2693.toNat, 944]
def k0_off1565 (k0_t4 : Fin k0_t4_loop.trips) : Fin 4 → Nat :=
  let c0_i32_1640 : BitVec 32 := 0#32
  let v2697 : Index := Scalar.indexCast c0_i32_1640
  let c0_i32_1641 : BitVec 32 := 0#32
  let v2698 : Index := Scalar.indexCast c0_i32_1641
  let c0_i32_475 : BitVec 32 := 0#32
  let c1_i32_477 : BitVec 32 := 1#32
  let arg15 : BitVec 32 := Scf.iv c0_i32_475 c1_i32_477 k0_t4
  let v2699 : Index := Scalar.indexCast arg15
  let c944_1642 : Index := 944#32
  ![0, 0, v2699.toNat, 944]
def k0_off1566 (k0_t4 : Fin k0_t4_loop.trips) : Fin 4 → Nat :=
  let c2_i32_1643 : BitVec 32 := 2#32
  let v2703 : Index := Scalar.indexCast c2_i32_1643
  let c0_i32_1644 : BitVec 32 := 0#32
  let v2704 : Index := Scalar.indexCast c0_i32_1644
  let c0_i32_475 : BitVec 32 := 0#32
  let c1_i32_477 : BitVec 32 := 1#32
  let arg15 : BitVec 32 := Scf.iv c0_i32_475 c1_i32_477 k0_t4
  let v2705 : Index := Scalar.indexCast arg15
  let c960_1645 : Index := 960#32
  ![2, 0, v2705.toNat, 960]
def k0_off1567 (k0_t4 : Fin k0_t4_loop.trips) : Fin 4 → Nat :=
  let c0_i32_1646 : BitVec 32 := 0#32
  let v2709 : Index := Scalar.indexCast c0_i32_1646
  let c0_i32_1647 : BitVec 32 := 0#32
  let v2710 : Index := Scalar.indexCast c0_i32_1647
  let c0_i32_475 : BitVec 32 := 0#32
  let c1_i32_477 : BitVec 32 := 1#32
  let arg15 : BitVec 32 := Scf.iv c0_i32_475 c1_i32_477 k0_t4
  let v2711 : Index := Scalar.indexCast arg15
  let c960_1648 : Index := 960#32
  ![0, 0, v2711.toNat, 960]
def k0_off1568 (k0_t4 : Fin k0_t4_loop.trips) : Fin 4 → Nat :=
  let c2_i32_1649 : BitVec 32 := 2#32
  let v2715 : Index := Scalar.indexCast c2_i32_1649
  let c0_i32_1650 : BitVec 32 := 0#32
  let v2716 : Index := Scalar.indexCast c0_i32_1650
  let c0_i32_475 : BitVec 32 := 0#32
  let c1_i32_477 : BitVec 32 := 1#32
  let arg15 : BitVec 32 := Scf.iv c0_i32_475 c1_i32_477 k0_t4
  let v2717 : Index := Scalar.indexCast arg15
  let c976_1651 : Index := 976#32
  ![2, 0, v2717.toNat, 976]
def k0_off1569 (k0_t4 : Fin k0_t4_loop.trips) : Fin 4 → Nat :=
  let c0_i32_1652 : BitVec 32 := 0#32
  let v2721 : Index := Scalar.indexCast c0_i32_1652
  let c0_i32_1653 : BitVec 32 := 0#32
  let v2722 : Index := Scalar.indexCast c0_i32_1653
  let c0_i32_475 : BitVec 32 := 0#32
  let c1_i32_477 : BitVec 32 := 1#32
  let arg15 : BitVec 32 := Scf.iv c0_i32_475 c1_i32_477 k0_t4
  let v2723 : Index := Scalar.indexCast arg15
  let c976_1654 : Index := 976#32
  ![0, 0, v2723.toNat, 976]
def k0_off1570 (k0_t4 : Fin k0_t4_loop.trips) : Fin 4 → Nat :=
  let c2_i32_1655 : BitVec 32 := 2#32
  let v2727 : Index := Scalar.indexCast c2_i32_1655
  let c0_i32_1656 : BitVec 32 := 0#32
  let v2728 : Index := Scalar.indexCast c0_i32_1656
  let c0_i32_475 : BitVec 32 := 0#32
  let c1_i32_477 : BitVec 32 := 1#32
  let arg15 : BitVec 32 := Scf.iv c0_i32_475 c1_i32_477 k0_t4
  let v2729 : Index := Scalar.indexCast arg15
  let c992_1657 : Index := 992#32
  ![2, 0, v2729.toNat, 992]
def k0_off1571 (k0_t4 : Fin k0_t4_loop.trips) : Fin 4 → Nat :=
  let c0_i32_1658 : BitVec 32 := 0#32
  let v2733 : Index := Scalar.indexCast c0_i32_1658
  let c0_i32_1659 : BitVec 32 := 0#32
  let v2734 : Index := Scalar.indexCast c0_i32_1659
  let c0_i32_475 : BitVec 32 := 0#32
  let c1_i32_477 : BitVec 32 := 1#32
  let arg15 : BitVec 32 := Scf.iv c0_i32_475 c1_i32_477 k0_t4
  let v2735 : Index := Scalar.indexCast arg15
  let c992_1660 : Index := 992#32
  ![0, 0, v2735.toNat, 992]
def k0_off1572 (k0_t4 : Fin k0_t4_loop.trips) : Fin 4 → Nat :=
  let c2_i32_1661 : BitVec 32 := 2#32
  let v2739 : Index := Scalar.indexCast c2_i32_1661
  let c0_i32_1662 : BitVec 32 := 0#32
  let v2740 : Index := Scalar.indexCast c0_i32_1662
  let c0_i32_475 : BitVec 32 := 0#32
  let c1_i32_477 : BitVec 32 := 1#32
  let arg15 : BitVec 32 := Scf.iv c0_i32_475 c1_i32_477 k0_t4
  let v2741 : Index := Scalar.indexCast arg15
  let c1008_1663 : Index := 1008#32
  ![2, 0, v2741.toNat, 1008]
def k0_off1573 (k0_t4 : Fin k0_t4_loop.trips) : Fin 4 → Nat :=
  let c0_i32_1664 : BitVec 32 := 0#32
  let v2745 : Index := Scalar.indexCast c0_i32_1664
  let c0_i32_1665 : BitVec 32 := 0#32
  let v2746 : Index := Scalar.indexCast c0_i32_1665
  let c0_i32_475 : BitVec 32 := 0#32
  let c1_i32_477 : BitVec 32 := 1#32
  let arg15 : BitVec 32 := Scf.iv c0_i32_475 c1_i32_477 k0_t4
  let v2747 : Index := Scalar.indexCast arg15
  let c1008_1666 : Index := 1008#32
  ![0, 0, v2747.toNat, 1008]
def k0_off1574 (k0_t4 : Fin k0_t4_loop.trips) : Fin 4 → Nat :=
  let c2_i32_1667 : BitVec 32 := 2#32
  let v2751 : Index := Scalar.indexCast c2_i32_1667
  let c1_i32_1668 : BitVec 32 := 1#32
  let v2752 : Index := Scalar.indexCast c1_i32_1668
  let c0_i32_475 : BitVec 32 := 0#32
  let c1_i32_477 : BitVec 32 := 1#32
  let arg15 : BitVec 32 := Scf.iv c0_i32_475 c1_i32_477 k0_t4
  let v2753 : Index := Scalar.indexCast arg15
  let c512_1669 : Index := 512#32
  ![2, 1, v2753.toNat, 512]
def k0_off1575 (k0_t4 : Fin k0_t4_loop.trips) : Fin 4 → Nat :=
  let c0_i32_1670 : BitVec 32 := 0#32
  let v2757 : Index := Scalar.indexCast c0_i32_1670
  let c1_i32_1671 : BitVec 32 := 1#32
  let v2758 : Index := Scalar.indexCast c1_i32_1671
  let c0_i32_475 : BitVec 32 := 0#32
  let c1_i32_477 : BitVec 32 := 1#32
  let arg15 : BitVec 32 := Scf.iv c0_i32_475 c1_i32_477 k0_t4
  let v2759 : Index := Scalar.indexCast arg15
  let c512_1672 : Index := 512#32
  ![0, 1, v2759.toNat, 512]
def k0_off1576 (k0_t4 : Fin k0_t4_loop.trips) : Fin 4 → Nat :=
  let c2_i32_1673 : BitVec 32 := 2#32
  let v2763 : Index := Scalar.indexCast c2_i32_1673
  let c1_i32_1674 : BitVec 32 := 1#32
  let v2764 : Index := Scalar.indexCast c1_i32_1674
  let c0_i32_475 : BitVec 32 := 0#32
  let c1_i32_477 : BitVec 32 := 1#32
  let arg15 : BitVec 32 := Scf.iv c0_i32_475 c1_i32_477 k0_t4
  let v2765 : Index := Scalar.indexCast arg15
  let c528_1675 : Index := 528#32
  ![2, 1, v2765.toNat, 528]
def k0_off1577 (k0_t4 : Fin k0_t4_loop.trips) : Fin 4 → Nat :=
  let c0_i32_1676 : BitVec 32 := 0#32
  let v2769 : Index := Scalar.indexCast c0_i32_1676
  let c1_i32_1677 : BitVec 32 := 1#32
  let v2770 : Index := Scalar.indexCast c1_i32_1677
  let c0_i32_475 : BitVec 32 := 0#32
  let c1_i32_477 : BitVec 32 := 1#32
  let arg15 : BitVec 32 := Scf.iv c0_i32_475 c1_i32_477 k0_t4
  let v2771 : Index := Scalar.indexCast arg15
  let c528_1678 : Index := 528#32
  ![0, 1, v2771.toNat, 528]
def k0_off1578 (k0_t4 : Fin k0_t4_loop.trips) : Fin 4 → Nat :=
  let c2_i32_1679 : BitVec 32 := 2#32
  let v2775 : Index := Scalar.indexCast c2_i32_1679
  let c1_i32_1680 : BitVec 32 := 1#32
  let v2776 : Index := Scalar.indexCast c1_i32_1680
  let c0_i32_475 : BitVec 32 := 0#32
  let c1_i32_477 : BitVec 32 := 1#32
  let arg15 : BitVec 32 := Scf.iv c0_i32_475 c1_i32_477 k0_t4
  let v2777 : Index := Scalar.indexCast arg15
  let c544_1681 : Index := 544#32
  ![2, 1, v2777.toNat, 544]
def k0_off1579 (k0_t4 : Fin k0_t4_loop.trips) : Fin 4 → Nat :=
  let c0_i32_1682 : BitVec 32 := 0#32
  let v2781 : Index := Scalar.indexCast c0_i32_1682
  let c1_i32_1683 : BitVec 32 := 1#32
  let v2782 : Index := Scalar.indexCast c1_i32_1683
  let c0_i32_475 : BitVec 32 := 0#32
  let c1_i32_477 : BitVec 32 := 1#32
  let arg15 : BitVec 32 := Scf.iv c0_i32_475 c1_i32_477 k0_t4
  let v2783 : Index := Scalar.indexCast arg15
  let c544_1684 : Index := 544#32
  ![0, 1, v2783.toNat, 544]
def k0_off1580 (k0_t4 : Fin k0_t4_loop.trips) : Fin 4 → Nat :=
  let c2_i32_1685 : BitVec 32 := 2#32
  let v2787 : Index := Scalar.indexCast c2_i32_1685
  let c1_i32_1686 : BitVec 32 := 1#32
  let v2788 : Index := Scalar.indexCast c1_i32_1686
  let c0_i32_475 : BitVec 32 := 0#32
  let c1_i32_477 : BitVec 32 := 1#32
  let arg15 : BitVec 32 := Scf.iv c0_i32_475 c1_i32_477 k0_t4
  let v2789 : Index := Scalar.indexCast arg15
  let c560_1687 : Index := 560#32
  ![2, 1, v2789.toNat, 560]
def k0_off1581 (k0_t4 : Fin k0_t4_loop.trips) : Fin 4 → Nat :=
  let c0_i32_1688 : BitVec 32 := 0#32
  let v2793 : Index := Scalar.indexCast c0_i32_1688
  let c1_i32_1689 : BitVec 32 := 1#32
  let v2794 : Index := Scalar.indexCast c1_i32_1689
  let c0_i32_475 : BitVec 32 := 0#32
  let c1_i32_477 : BitVec 32 := 1#32
  let arg15 : BitVec 32 := Scf.iv c0_i32_475 c1_i32_477 k0_t4
  let v2795 : Index := Scalar.indexCast arg15
  let c560_1690 : Index := 560#32
  ![0, 1, v2795.toNat, 560]
def k0_off1582 (k0_t4 : Fin k0_t4_loop.trips) : Fin 4 → Nat :=
  let c2_i32_1691 : BitVec 32 := 2#32
  let v2799 : Index := Scalar.indexCast c2_i32_1691
  let c1_i32_1692 : BitVec 32 := 1#32
  let v2800 : Index := Scalar.indexCast c1_i32_1692
  let c0_i32_475 : BitVec 32 := 0#32
  let c1_i32_477 : BitVec 32 := 1#32
  let arg15 : BitVec 32 := Scf.iv c0_i32_475 c1_i32_477 k0_t4
  let v2801 : Index := Scalar.indexCast arg15
  let c576_1693 : Index := 576#32
  ![2, 1, v2801.toNat, 576]
def k0_off1583 (k0_t4 : Fin k0_t4_loop.trips) : Fin 4 → Nat :=
  let c0_i32_1694 : BitVec 32 := 0#32
  let v2805 : Index := Scalar.indexCast c0_i32_1694
  let c1_i32_1695 : BitVec 32 := 1#32
  let v2806 : Index := Scalar.indexCast c1_i32_1695
  let c0_i32_475 : BitVec 32 := 0#32
  let c1_i32_477 : BitVec 32 := 1#32
  let arg15 : BitVec 32 := Scf.iv c0_i32_475 c1_i32_477 k0_t4
  let v2807 : Index := Scalar.indexCast arg15
  let c576_1696 : Index := 576#32
  ![0, 1, v2807.toNat, 576]
def k0_off1584 (k0_t4 : Fin k0_t4_loop.trips) : Fin 4 → Nat :=
  let c2_i32_1697 : BitVec 32 := 2#32
  let v2811 : Index := Scalar.indexCast c2_i32_1697
  let c1_i32_1698 : BitVec 32 := 1#32
  let v2812 : Index := Scalar.indexCast c1_i32_1698
  let c0_i32_475 : BitVec 32 := 0#32
  let c1_i32_477 : BitVec 32 := 1#32
  let arg15 : BitVec 32 := Scf.iv c0_i32_475 c1_i32_477 k0_t4
  let v2813 : Index := Scalar.indexCast arg15
  let c592_1699 : Index := 592#32
  ![2, 1, v2813.toNat, 592]
def k0_off1585 (k0_t4 : Fin k0_t4_loop.trips) : Fin 4 → Nat :=
  let c0_i32_1700 : BitVec 32 := 0#32
  let v2817 : Index := Scalar.indexCast c0_i32_1700
  let c1_i32_1701 : BitVec 32 := 1#32
  let v2818 : Index := Scalar.indexCast c1_i32_1701
  let c0_i32_475 : BitVec 32 := 0#32
  let c1_i32_477 : BitVec 32 := 1#32
  let arg15 : BitVec 32 := Scf.iv c0_i32_475 c1_i32_477 k0_t4
  let v2819 : Index := Scalar.indexCast arg15
  let c592_1702 : Index := 592#32
  ![0, 1, v2819.toNat, 592]
def k0_off1586 (k0_t4 : Fin k0_t4_loop.trips) : Fin 4 → Nat :=
  let c2_i32_1703 : BitVec 32 := 2#32
  let v2823 : Index := Scalar.indexCast c2_i32_1703
  let c1_i32_1704 : BitVec 32 := 1#32
  let v2824 : Index := Scalar.indexCast c1_i32_1704
  let c0_i32_475 : BitVec 32 := 0#32
  let c1_i32_477 : BitVec 32 := 1#32
  let arg15 : BitVec 32 := Scf.iv c0_i32_475 c1_i32_477 k0_t4
  let v2825 : Index := Scalar.indexCast arg15
  let c608_1705 : Index := 608#32
  ![2, 1, v2825.toNat, 608]
def k0_off1587 (k0_t4 : Fin k0_t4_loop.trips) : Fin 4 → Nat :=
  let c0_i32_1706 : BitVec 32 := 0#32
  let v2829 : Index := Scalar.indexCast c0_i32_1706
  let c1_i32_1707 : BitVec 32 := 1#32
  let v2830 : Index := Scalar.indexCast c1_i32_1707
  let c0_i32_475 : BitVec 32 := 0#32
  let c1_i32_477 : BitVec 32 := 1#32
  let arg15 : BitVec 32 := Scf.iv c0_i32_475 c1_i32_477 k0_t4
  let v2831 : Index := Scalar.indexCast arg15
  let c608_1708 : Index := 608#32
  ![0, 1, v2831.toNat, 608]
def k0_off1588 (k0_t4 : Fin k0_t4_loop.trips) : Fin 4 → Nat :=
  let c2_i32_1709 : BitVec 32 := 2#32
  let v2835 : Index := Scalar.indexCast c2_i32_1709
  let c1_i32_1710 : BitVec 32 := 1#32
  let v2836 : Index := Scalar.indexCast c1_i32_1710
  let c0_i32_475 : BitVec 32 := 0#32
  let c1_i32_477 : BitVec 32 := 1#32
  let arg15 : BitVec 32 := Scf.iv c0_i32_475 c1_i32_477 k0_t4
  let v2837 : Index := Scalar.indexCast arg15
  let c624_1711 : Index := 624#32
  ![2, 1, v2837.toNat, 624]
def k0_off1589 (k0_t4 : Fin k0_t4_loop.trips) : Fin 4 → Nat :=
  let c0_i32_1712 : BitVec 32 := 0#32
  let v2841 : Index := Scalar.indexCast c0_i32_1712
  let c1_i32_1713 : BitVec 32 := 1#32
  let v2842 : Index := Scalar.indexCast c1_i32_1713
  let c0_i32_475 : BitVec 32 := 0#32
  let c1_i32_477 : BitVec 32 := 1#32
  let arg15 : BitVec 32 := Scf.iv c0_i32_475 c1_i32_477 k0_t4
  let v2843 : Index := Scalar.indexCast arg15
  let c624_1714 : Index := 624#32
  ![0, 1, v2843.toNat, 624]
def k0_off1590 (k0_t4 : Fin k0_t4_loop.trips) : Fin 4 → Nat :=
  let c2_i32_1715 : BitVec 32 := 2#32
  let v2847 : Index := Scalar.indexCast c2_i32_1715
  let c1_i32_1716 : BitVec 32 := 1#32
  let v2848 : Index := Scalar.indexCast c1_i32_1716
  let c0_i32_475 : BitVec 32 := 0#32
  let c1_i32_477 : BitVec 32 := 1#32
  let arg15 : BitVec 32 := Scf.iv c0_i32_475 c1_i32_477 k0_t4
  let v2849 : Index := Scalar.indexCast arg15
  let c640_1717 : Index := 640#32
  ![2, 1, v2849.toNat, 640]
def k0_off1591 (k0_t4 : Fin k0_t4_loop.trips) : Fin 4 → Nat :=
  let c0_i32_1718 : BitVec 32 := 0#32
  let v2853 : Index := Scalar.indexCast c0_i32_1718
  let c1_i32_1719 : BitVec 32 := 1#32
  let v2854 : Index := Scalar.indexCast c1_i32_1719
  let c0_i32_475 : BitVec 32 := 0#32
  let c1_i32_477 : BitVec 32 := 1#32
  let arg15 : BitVec 32 := Scf.iv c0_i32_475 c1_i32_477 k0_t4
  let v2855 : Index := Scalar.indexCast arg15
  let c640_1720 : Index := 640#32
  ![0, 1, v2855.toNat, 640]
def k0_off1592 (k0_t4 : Fin k0_t4_loop.trips) : Fin 4 → Nat :=
  let c2_i32_1721 : BitVec 32 := 2#32
  let v2859 : Index := Scalar.indexCast c2_i32_1721
  let c1_i32_1722 : BitVec 32 := 1#32
  let v2860 : Index := Scalar.indexCast c1_i32_1722
  let c0_i32_475 : BitVec 32 := 0#32
  let c1_i32_477 : BitVec 32 := 1#32
  let arg15 : BitVec 32 := Scf.iv c0_i32_475 c1_i32_477 k0_t4
  let v2861 : Index := Scalar.indexCast arg15
  let c656_1723 : Index := 656#32
  ![2, 1, v2861.toNat, 656]
def k0_off1593 (k0_t4 : Fin k0_t4_loop.trips) : Fin 4 → Nat :=
  let c0_i32_1724 : BitVec 32 := 0#32
  let v2865 : Index := Scalar.indexCast c0_i32_1724
  let c1_i32_1725 : BitVec 32 := 1#32
  let v2866 : Index := Scalar.indexCast c1_i32_1725
  let c0_i32_475 : BitVec 32 := 0#32
  let c1_i32_477 : BitVec 32 := 1#32
  let arg15 : BitVec 32 := Scf.iv c0_i32_475 c1_i32_477 k0_t4
  let v2867 : Index := Scalar.indexCast arg15
  let c656_1726 : Index := 656#32
  ![0, 1, v2867.toNat, 656]
def k0_off1594 (k0_t4 : Fin k0_t4_loop.trips) : Fin 4 → Nat :=
  let c2_i32_1727 : BitVec 32 := 2#32
  let v2871 : Index := Scalar.indexCast c2_i32_1727
  let c1_i32_1728 : BitVec 32 := 1#32
  let v2872 : Index := Scalar.indexCast c1_i32_1728
  let c0_i32_475 : BitVec 32 := 0#32
  let c1_i32_477 : BitVec 32 := 1#32
  let arg15 : BitVec 32 := Scf.iv c0_i32_475 c1_i32_477 k0_t4
  let v2873 : Index := Scalar.indexCast arg15
  let c672_1729 : Index := 672#32
  ![2, 1, v2873.toNat, 672]
def k0_off1595 (k0_t4 : Fin k0_t4_loop.trips) : Fin 4 → Nat :=
  let c0_i32_1730 : BitVec 32 := 0#32
  let v2877 : Index := Scalar.indexCast c0_i32_1730
  let c1_i32_1731 : BitVec 32 := 1#32
  let v2878 : Index := Scalar.indexCast c1_i32_1731
  let c0_i32_475 : BitVec 32 := 0#32
  let c1_i32_477 : BitVec 32 := 1#32
  let arg15 : BitVec 32 := Scf.iv c0_i32_475 c1_i32_477 k0_t4
  let v2879 : Index := Scalar.indexCast arg15
  let c672_1732 : Index := 672#32
  ![0, 1, v2879.toNat, 672]
def k0_off1596 (k0_t4 : Fin k0_t4_loop.trips) : Fin 4 → Nat :=
  let c2_i32_1733 : BitVec 32 := 2#32
  let v2883 : Index := Scalar.indexCast c2_i32_1733
  let c1_i32_1734 : BitVec 32 := 1#32
  let v2884 : Index := Scalar.indexCast c1_i32_1734
  let c0_i32_475 : BitVec 32 := 0#32
  let c1_i32_477 : BitVec 32 := 1#32
  let arg15 : BitVec 32 := Scf.iv c0_i32_475 c1_i32_477 k0_t4
  let v2885 : Index := Scalar.indexCast arg15
  let c688_1735 : Index := 688#32
  ![2, 1, v2885.toNat, 688]
def k0_off1597 (k0_t4 : Fin k0_t4_loop.trips) : Fin 4 → Nat :=
  let c0_i32_1736 : BitVec 32 := 0#32
  let v2889 : Index := Scalar.indexCast c0_i32_1736
  let c1_i32_1737 : BitVec 32 := 1#32
  let v2890 : Index := Scalar.indexCast c1_i32_1737
  let c0_i32_475 : BitVec 32 := 0#32
  let c1_i32_477 : BitVec 32 := 1#32
  let arg15 : BitVec 32 := Scf.iv c0_i32_475 c1_i32_477 k0_t4
  let v2891 : Index := Scalar.indexCast arg15
  let c688_1738 : Index := 688#32
  ![0, 1, v2891.toNat, 688]
def k0_off1598 (k0_t4 : Fin k0_t4_loop.trips) : Fin 4 → Nat :=
  let c2_i32_1739 : BitVec 32 := 2#32
  let v2895 : Index := Scalar.indexCast c2_i32_1739
  let c1_i32_1740 : BitVec 32 := 1#32
  let v2896 : Index := Scalar.indexCast c1_i32_1740
  let c0_i32_475 : BitVec 32 := 0#32
  let c1_i32_477 : BitVec 32 := 1#32
  let arg15 : BitVec 32 := Scf.iv c0_i32_475 c1_i32_477 k0_t4
  let v2897 : Index := Scalar.indexCast arg15
  let c704_1741 : Index := 704#32
  ![2, 1, v2897.toNat, 704]
def k0_off1599 (k0_t4 : Fin k0_t4_loop.trips) : Fin 4 → Nat :=
  let c0_i32_1742 : BitVec 32 := 0#32
  let v2901 : Index := Scalar.indexCast c0_i32_1742
  let c1_i32_1743 : BitVec 32 := 1#32
  let v2902 : Index := Scalar.indexCast c1_i32_1743
  let c0_i32_475 : BitVec 32 := 0#32
  let c1_i32_477 : BitVec 32 := 1#32
  let arg15 : BitVec 32 := Scf.iv c0_i32_475 c1_i32_477 k0_t4
  let v2903 : Index := Scalar.indexCast arg15
  let c704_1744 : Index := 704#32
  ![0, 1, v2903.toNat, 704]
def k0_off1600 (k0_t4 : Fin k0_t4_loop.trips) : Fin 4 → Nat :=
  let c2_i32_1745 : BitVec 32 := 2#32
  let v2907 : Index := Scalar.indexCast c2_i32_1745
  let c1_i32_1746 : BitVec 32 := 1#32
  let v2908 : Index := Scalar.indexCast c1_i32_1746
  let c0_i32_475 : BitVec 32 := 0#32
  let c1_i32_477 : BitVec 32 := 1#32
  let arg15 : BitVec 32 := Scf.iv c0_i32_475 c1_i32_477 k0_t4
  let v2909 : Index := Scalar.indexCast arg15
  let c720_1747 : Index := 720#32
  ![2, 1, v2909.toNat, 720]
def k0_off1601 (k0_t4 : Fin k0_t4_loop.trips) : Fin 4 → Nat :=
  let c0_i32_1748 : BitVec 32 := 0#32
  let v2913 : Index := Scalar.indexCast c0_i32_1748
  let c1_i32_1749 : BitVec 32 := 1#32
  let v2914 : Index := Scalar.indexCast c1_i32_1749
  let c0_i32_475 : BitVec 32 := 0#32
  let c1_i32_477 : BitVec 32 := 1#32
  let arg15 : BitVec 32 := Scf.iv c0_i32_475 c1_i32_477 k0_t4
  let v2915 : Index := Scalar.indexCast arg15
  let c720_1750 : Index := 720#32
  ![0, 1, v2915.toNat, 720]
def k0_off1602 (k0_t4 : Fin k0_t4_loop.trips) : Fin 4 → Nat :=
  let c2_i32_1751 : BitVec 32 := 2#32
  let v2919 : Index := Scalar.indexCast c2_i32_1751
  let c1_i32_1752 : BitVec 32 := 1#32
  let v2920 : Index := Scalar.indexCast c1_i32_1752
  let c0_i32_475 : BitVec 32 := 0#32
  let c1_i32_477 : BitVec 32 := 1#32
  let arg15 : BitVec 32 := Scf.iv c0_i32_475 c1_i32_477 k0_t4
  let v2921 : Index := Scalar.indexCast arg15
  let c736_1753 : Index := 736#32
  ![2, 1, v2921.toNat, 736]
def k0_off1603 (k0_t4 : Fin k0_t4_loop.trips) : Fin 4 → Nat :=
  let c0_i32_1754 : BitVec 32 := 0#32
  let v2925 : Index := Scalar.indexCast c0_i32_1754
  let c1_i32_1755 : BitVec 32 := 1#32
  let v2926 : Index := Scalar.indexCast c1_i32_1755
  let c0_i32_475 : BitVec 32 := 0#32
  let c1_i32_477 : BitVec 32 := 1#32
  let arg15 : BitVec 32 := Scf.iv c0_i32_475 c1_i32_477 k0_t4
  let v2927 : Index := Scalar.indexCast arg15
  let c736_1756 : Index := 736#32
  ![0, 1, v2927.toNat, 736]
def k0_off1604 (k0_t4 : Fin k0_t4_loop.trips) : Fin 4 → Nat :=
  let c2_i32_1757 : BitVec 32 := 2#32
  let v2931 : Index := Scalar.indexCast c2_i32_1757
  let c1_i32_1758 : BitVec 32 := 1#32
  let v2932 : Index := Scalar.indexCast c1_i32_1758
  let c0_i32_475 : BitVec 32 := 0#32
  let c1_i32_477 : BitVec 32 := 1#32
  let arg15 : BitVec 32 := Scf.iv c0_i32_475 c1_i32_477 k0_t4
  let v2933 : Index := Scalar.indexCast arg15
  let c752_1759 : Index := 752#32
  ![2, 1, v2933.toNat, 752]
def k0_off1605 (k0_t4 : Fin k0_t4_loop.trips) : Fin 4 → Nat :=
  let c0_i32_1760 : BitVec 32 := 0#32
  let v2937 : Index := Scalar.indexCast c0_i32_1760
  let c1_i32_1761 : BitVec 32 := 1#32
  let v2938 : Index := Scalar.indexCast c1_i32_1761
  let c0_i32_475 : BitVec 32 := 0#32
  let c1_i32_477 : BitVec 32 := 1#32
  let arg15 : BitVec 32 := Scf.iv c0_i32_475 c1_i32_477 k0_t4
  let v2939 : Index := Scalar.indexCast arg15
  let c752_1762 : Index := 752#32
  ![0, 1, v2939.toNat, 752]
def k0_off1606 (k0_t4 : Fin k0_t4_loop.trips) : Fin 4 → Nat :=
  let c2_i32_1763 : BitVec 32 := 2#32
  let v2943 : Index := Scalar.indexCast c2_i32_1763
  let c1_i32_1764 : BitVec 32 := 1#32
  let v2944 : Index := Scalar.indexCast c1_i32_1764
  let c0_i32_475 : BitVec 32 := 0#32
  let c1_i32_477 : BitVec 32 := 1#32
  let arg15 : BitVec 32 := Scf.iv c0_i32_475 c1_i32_477 k0_t4
  let v2945 : Index := Scalar.indexCast arg15
  let c768_1765 : Index := 768#32
  ![2, 1, v2945.toNat, 768]
def k0_off1607 (k0_t4 : Fin k0_t4_loop.trips) : Fin 4 → Nat :=
  let c0_i32_1766 : BitVec 32 := 0#32
  let v2949 : Index := Scalar.indexCast c0_i32_1766
  let c1_i32_1767 : BitVec 32 := 1#32
  let v2950 : Index := Scalar.indexCast c1_i32_1767
  let c0_i32_475 : BitVec 32 := 0#32
  let c1_i32_477 : BitVec 32 := 1#32
  let arg15 : BitVec 32 := Scf.iv c0_i32_475 c1_i32_477 k0_t4
  let v2951 : Index := Scalar.indexCast arg15
  let c768_1768 : Index := 768#32
  ![0, 1, v2951.toNat, 768]
def k0_off1608 (k0_t4 : Fin k0_t4_loop.trips) : Fin 4 → Nat :=
  let c2_i32_1769 : BitVec 32 := 2#32
  let v2955 : Index := Scalar.indexCast c2_i32_1769
  let c1_i32_1770 : BitVec 32 := 1#32
  let v2956 : Index := Scalar.indexCast c1_i32_1770
  let c0_i32_475 : BitVec 32 := 0#32
  let c1_i32_477 : BitVec 32 := 1#32
  let arg15 : BitVec 32 := Scf.iv c0_i32_475 c1_i32_477 k0_t4
  let v2957 : Index := Scalar.indexCast arg15
  let c784_1771 : Index := 784#32
  ![2, 1, v2957.toNat, 784]
def k0_off1609 (k0_t4 : Fin k0_t4_loop.trips) : Fin 4 → Nat :=
  let c0_i32_1772 : BitVec 32 := 0#32
  let v2961 : Index := Scalar.indexCast c0_i32_1772
  let c1_i32_1773 : BitVec 32 := 1#32
  let v2962 : Index := Scalar.indexCast c1_i32_1773
  let c0_i32_475 : BitVec 32 := 0#32
  let c1_i32_477 : BitVec 32 := 1#32
  let arg15 : BitVec 32 := Scf.iv c0_i32_475 c1_i32_477 k0_t4
  let v2963 : Index := Scalar.indexCast arg15
  let c784_1774 : Index := 784#32
  ![0, 1, v2963.toNat, 784]
def k0_off1610 (k0_t4 : Fin k0_t4_loop.trips) : Fin 4 → Nat :=
  let c2_i32_1775 : BitVec 32 := 2#32
  let v2967 : Index := Scalar.indexCast c2_i32_1775
  let c1_i32_1776 : BitVec 32 := 1#32
  let v2968 : Index := Scalar.indexCast c1_i32_1776
  let c0_i32_475 : BitVec 32 := 0#32
  let c1_i32_477 : BitVec 32 := 1#32
  let arg15 : BitVec 32 := Scf.iv c0_i32_475 c1_i32_477 k0_t4
  let v2969 : Index := Scalar.indexCast arg15
  let c800_1777 : Index := 800#32
  ![2, 1, v2969.toNat, 800]
def k0_off1611 (k0_t4 : Fin k0_t4_loop.trips) : Fin 4 → Nat :=
  let c0_i32_1778 : BitVec 32 := 0#32
  let v2973 : Index := Scalar.indexCast c0_i32_1778
  let c1_i32_1779 : BitVec 32 := 1#32
  let v2974 : Index := Scalar.indexCast c1_i32_1779
  let c0_i32_475 : BitVec 32 := 0#32
  let c1_i32_477 : BitVec 32 := 1#32
  let arg15 : BitVec 32 := Scf.iv c0_i32_475 c1_i32_477 k0_t4
  let v2975 : Index := Scalar.indexCast arg15
  let c800_1780 : Index := 800#32
  ![0, 1, v2975.toNat, 800]
def k0_off1612 (k0_t4 : Fin k0_t4_loop.trips) : Fin 4 → Nat :=
  let c2_i32_1781 : BitVec 32 := 2#32
  let v2979 : Index := Scalar.indexCast c2_i32_1781
  let c1_i32_1782 : BitVec 32 := 1#32
  let v2980 : Index := Scalar.indexCast c1_i32_1782
  let c0_i32_475 : BitVec 32 := 0#32
  let c1_i32_477 : BitVec 32 := 1#32
  let arg15 : BitVec 32 := Scf.iv c0_i32_475 c1_i32_477 k0_t4
  let v2981 : Index := Scalar.indexCast arg15
  let c816_1783 : Index := 816#32
  ![2, 1, v2981.toNat, 816]
def k0_off1613 (k0_t4 : Fin k0_t4_loop.trips) : Fin 4 → Nat :=
  let c0_i32_1784 : BitVec 32 := 0#32
  let v2985 : Index := Scalar.indexCast c0_i32_1784
  let c1_i32_1785 : BitVec 32 := 1#32
  let v2986 : Index := Scalar.indexCast c1_i32_1785
  let c0_i32_475 : BitVec 32 := 0#32
  let c1_i32_477 : BitVec 32 := 1#32
  let arg15 : BitVec 32 := Scf.iv c0_i32_475 c1_i32_477 k0_t4
  let v2987 : Index := Scalar.indexCast arg15
  let c816_1786 : Index := 816#32
  ![0, 1, v2987.toNat, 816]
def k0_off1614 (k0_t4 : Fin k0_t4_loop.trips) : Fin 4 → Nat :=
  let c2_i32_1787 : BitVec 32 := 2#32
  let v2991 : Index := Scalar.indexCast c2_i32_1787
  let c1_i32_1788 : BitVec 32 := 1#32
  let v2992 : Index := Scalar.indexCast c1_i32_1788
  let c0_i32_475 : BitVec 32 := 0#32
  let c1_i32_477 : BitVec 32 := 1#32
  let arg15 : BitVec 32 := Scf.iv c0_i32_475 c1_i32_477 k0_t4
  let v2993 : Index := Scalar.indexCast arg15
  let c832_1789 : Index := 832#32
  ![2, 1, v2993.toNat, 832]
def k0_off1615 (k0_t4 : Fin k0_t4_loop.trips) : Fin 4 → Nat :=
  let c0_i32_1790 : BitVec 32 := 0#32
  let v2997 : Index := Scalar.indexCast c0_i32_1790
  let c1_i32_1791 : BitVec 32 := 1#32
  let v2998 : Index := Scalar.indexCast c1_i32_1791
  let c0_i32_475 : BitVec 32 := 0#32
  let c1_i32_477 : BitVec 32 := 1#32
  let arg15 : BitVec 32 := Scf.iv c0_i32_475 c1_i32_477 k0_t4
  let v2999 : Index := Scalar.indexCast arg15
  let c832_1792 : Index := 832#32
  ![0, 1, v2999.toNat, 832]
def k0_off1616 (k0_t4 : Fin k0_t4_loop.trips) : Fin 4 → Nat :=
  let c2_i32_1793 : BitVec 32 := 2#32
  let v3003 : Index := Scalar.indexCast c2_i32_1793
  let c1_i32_1794 : BitVec 32 := 1#32
  let v3004 : Index := Scalar.indexCast c1_i32_1794
  let c0_i32_475 : BitVec 32 := 0#32
  let c1_i32_477 : BitVec 32 := 1#32
  let arg15 : BitVec 32 := Scf.iv c0_i32_475 c1_i32_477 k0_t4
  let v3005 : Index := Scalar.indexCast arg15
  let c848_1795 : Index := 848#32
  ![2, 1, v3005.toNat, 848]
def k0_off1617 (k0_t4 : Fin k0_t4_loop.trips) : Fin 4 → Nat :=
  let c0_i32_1796 : BitVec 32 := 0#32
  let v3009 : Index := Scalar.indexCast c0_i32_1796
  let c1_i32_1797 : BitVec 32 := 1#32
  let v3010 : Index := Scalar.indexCast c1_i32_1797
  let c0_i32_475 : BitVec 32 := 0#32
  let c1_i32_477 : BitVec 32 := 1#32
  let arg15 : BitVec 32 := Scf.iv c0_i32_475 c1_i32_477 k0_t4
  let v3011 : Index := Scalar.indexCast arg15
  let c848_1798 : Index := 848#32
  ![0, 1, v3011.toNat, 848]
def k0_off1618 (k0_t4 : Fin k0_t4_loop.trips) : Fin 4 → Nat :=
  let c2_i32_1799 : BitVec 32 := 2#32
  let v3015 : Index := Scalar.indexCast c2_i32_1799
  let c1_i32_1800 : BitVec 32 := 1#32
  let v3016 : Index := Scalar.indexCast c1_i32_1800
  let c0_i32_475 : BitVec 32 := 0#32
  let c1_i32_477 : BitVec 32 := 1#32
  let arg15 : BitVec 32 := Scf.iv c0_i32_475 c1_i32_477 k0_t4
  let v3017 : Index := Scalar.indexCast arg15
  let c864_1801 : Index := 864#32
  ![2, 1, v3017.toNat, 864]
def k0_off1619 (k0_t4 : Fin k0_t4_loop.trips) : Fin 4 → Nat :=
  let c0_i32_1802 : BitVec 32 := 0#32
  let v3021 : Index := Scalar.indexCast c0_i32_1802
  let c1_i32_1803 : BitVec 32 := 1#32
  let v3022 : Index := Scalar.indexCast c1_i32_1803
  let c0_i32_475 : BitVec 32 := 0#32
  let c1_i32_477 : BitVec 32 := 1#32
  let arg15 : BitVec 32 := Scf.iv c0_i32_475 c1_i32_477 k0_t4
  let v3023 : Index := Scalar.indexCast arg15
  let c864_1804 : Index := 864#32
  ![0, 1, v3023.toNat, 864]
def k0_off1620 (k0_t4 : Fin k0_t4_loop.trips) : Fin 4 → Nat :=
  let c2_i32_1805 : BitVec 32 := 2#32
  let v3027 : Index := Scalar.indexCast c2_i32_1805
  let c1_i32_1806 : BitVec 32 := 1#32
  let v3028 : Index := Scalar.indexCast c1_i32_1806
  let c0_i32_475 : BitVec 32 := 0#32
  let c1_i32_477 : BitVec 32 := 1#32
  let arg15 : BitVec 32 := Scf.iv c0_i32_475 c1_i32_477 k0_t4
  let v3029 : Index := Scalar.indexCast arg15
  let c880_1807 : Index := 880#32
  ![2, 1, v3029.toNat, 880]
def k0_off1621 (k0_t4 : Fin k0_t4_loop.trips) : Fin 4 → Nat :=
  let c0_i32_1808 : BitVec 32 := 0#32
  let v3033 : Index := Scalar.indexCast c0_i32_1808
  let c1_i32_1809 : BitVec 32 := 1#32
  let v3034 : Index := Scalar.indexCast c1_i32_1809
  let c0_i32_475 : BitVec 32 := 0#32
  let c1_i32_477 : BitVec 32 := 1#32
  let arg15 : BitVec 32 := Scf.iv c0_i32_475 c1_i32_477 k0_t4
  let v3035 : Index := Scalar.indexCast arg15
  let c880_1810 : Index := 880#32
  ![0, 1, v3035.toNat, 880]
def k0_off1622 (k0_t4 : Fin k0_t4_loop.trips) : Fin 4 → Nat :=
  let c2_i32_1811 : BitVec 32 := 2#32
  let v3039 : Index := Scalar.indexCast c2_i32_1811
  let c1_i32_1812 : BitVec 32 := 1#32
  let v3040 : Index := Scalar.indexCast c1_i32_1812
  let c0_i32_475 : BitVec 32 := 0#32
  let c1_i32_477 : BitVec 32 := 1#32
  let arg15 : BitVec 32 := Scf.iv c0_i32_475 c1_i32_477 k0_t4
  let v3041 : Index := Scalar.indexCast arg15
  let c896_1813 : Index := 896#32
  ![2, 1, v3041.toNat, 896]
def k0_off1623 (k0_t4 : Fin k0_t4_loop.trips) : Fin 4 → Nat :=
  let c0_i32_1814 : BitVec 32 := 0#32
  let v3045 : Index := Scalar.indexCast c0_i32_1814
  let c1_i32_1815 : BitVec 32 := 1#32
  let v3046 : Index := Scalar.indexCast c1_i32_1815
  let c0_i32_475 : BitVec 32 := 0#32
  let c1_i32_477 : BitVec 32 := 1#32
  let arg15 : BitVec 32 := Scf.iv c0_i32_475 c1_i32_477 k0_t4
  let v3047 : Index := Scalar.indexCast arg15
  let c896_1816 : Index := 896#32
  ![0, 1, v3047.toNat, 896]
def k0_off1624 (k0_t4 : Fin k0_t4_loop.trips) : Fin 4 → Nat :=
  let c2_i32_1817 : BitVec 32 := 2#32
  let v3051 : Index := Scalar.indexCast c2_i32_1817
  let c1_i32_1818 : BitVec 32 := 1#32
  let v3052 : Index := Scalar.indexCast c1_i32_1818
  let c0_i32_475 : BitVec 32 := 0#32
  let c1_i32_477 : BitVec 32 := 1#32
  let arg15 : BitVec 32 := Scf.iv c0_i32_475 c1_i32_477 k0_t4
  let v3053 : Index := Scalar.indexCast arg15
  let c912_1819 : Index := 912#32
  ![2, 1, v3053.toNat, 912]
def k0_off1625 (k0_t4 : Fin k0_t4_loop.trips) : Fin 4 → Nat :=
  let c0_i32_1820 : BitVec 32 := 0#32
  let v3057 : Index := Scalar.indexCast c0_i32_1820
  let c1_i32_1821 : BitVec 32 := 1#32
  let v3058 : Index := Scalar.indexCast c1_i32_1821
  let c0_i32_475 : BitVec 32 := 0#32
  let c1_i32_477 : BitVec 32 := 1#32
  let arg15 : BitVec 32 := Scf.iv c0_i32_475 c1_i32_477 k0_t4
  let v3059 : Index := Scalar.indexCast arg15
  let c912_1822 : Index := 912#32
  ![0, 1, v3059.toNat, 912]
def k0_off1626 (k0_t4 : Fin k0_t4_loop.trips) : Fin 4 → Nat :=
  let c2_i32_1823 : BitVec 32 := 2#32
  let v3063 : Index := Scalar.indexCast c2_i32_1823
  let c1_i32_1824 : BitVec 32 := 1#32
  let v3064 : Index := Scalar.indexCast c1_i32_1824
  let c0_i32_475 : BitVec 32 := 0#32
  let c1_i32_477 : BitVec 32 := 1#32
  let arg15 : BitVec 32 := Scf.iv c0_i32_475 c1_i32_477 k0_t4
  let v3065 : Index := Scalar.indexCast arg15
  let c928_1825 : Index := 928#32
  ![2, 1, v3065.toNat, 928]
def k0_off1627 (k0_t4 : Fin k0_t4_loop.trips) : Fin 4 → Nat :=
  let c0_i32_1826 : BitVec 32 := 0#32
  let v3069 : Index := Scalar.indexCast c0_i32_1826
  let c1_i32_1827 : BitVec 32 := 1#32
  let v3070 : Index := Scalar.indexCast c1_i32_1827
  let c0_i32_475 : BitVec 32 := 0#32
  let c1_i32_477 : BitVec 32 := 1#32
  let arg15 : BitVec 32 := Scf.iv c0_i32_475 c1_i32_477 k0_t4
  let v3071 : Index := Scalar.indexCast arg15
  let c928_1828 : Index := 928#32
  ![0, 1, v3071.toNat, 928]
def k0_off1628 (k0_t4 : Fin k0_t4_loop.trips) : Fin 4 → Nat :=
  let c2_i32_1829 : BitVec 32 := 2#32
  let v3075 : Index := Scalar.indexCast c2_i32_1829
  let c1_i32_1830 : BitVec 32 := 1#32
  let v3076 : Index := Scalar.indexCast c1_i32_1830
  let c0_i32_475 : BitVec 32 := 0#32
  let c1_i32_477 : BitVec 32 := 1#32
  let arg15 : BitVec 32 := Scf.iv c0_i32_475 c1_i32_477 k0_t4
  let v3077 : Index := Scalar.indexCast arg15
  let c944_1831 : Index := 944#32
  ![2, 1, v3077.toNat, 944]
def k0_off1629 (k0_t4 : Fin k0_t4_loop.trips) : Fin 4 → Nat :=
  let c0_i32_1832 : BitVec 32 := 0#32
  let v3081 : Index := Scalar.indexCast c0_i32_1832
  let c1_i32_1833 : BitVec 32 := 1#32
  let v3082 : Index := Scalar.indexCast c1_i32_1833
  let c0_i32_475 : BitVec 32 := 0#32
  let c1_i32_477 : BitVec 32 := 1#32
  let arg15 : BitVec 32 := Scf.iv c0_i32_475 c1_i32_477 k0_t4
  let v3083 : Index := Scalar.indexCast arg15
  let c944_1834 : Index := 944#32
  ![0, 1, v3083.toNat, 944]
def k0_off1630 (k0_t4 : Fin k0_t4_loop.trips) : Fin 4 → Nat :=
  let c2_i32_1835 : BitVec 32 := 2#32
  let v3087 : Index := Scalar.indexCast c2_i32_1835
  let c1_i32_1836 : BitVec 32 := 1#32
  let v3088 : Index := Scalar.indexCast c1_i32_1836
  let c0_i32_475 : BitVec 32 := 0#32
  let c1_i32_477 : BitVec 32 := 1#32
  let arg15 : BitVec 32 := Scf.iv c0_i32_475 c1_i32_477 k0_t4
  let v3089 : Index := Scalar.indexCast arg15
  let c960_1837 : Index := 960#32
  ![2, 1, v3089.toNat, 960]
def k0_off1631 (k0_t4 : Fin k0_t4_loop.trips) : Fin 4 → Nat :=
  let c0_i32_1838 : BitVec 32 := 0#32
  let v3093 : Index := Scalar.indexCast c0_i32_1838
  let c1_i32_1839 : BitVec 32 := 1#32
  let v3094 : Index := Scalar.indexCast c1_i32_1839
  let c0_i32_475 : BitVec 32 := 0#32
  let c1_i32_477 : BitVec 32 := 1#32
  let arg15 : BitVec 32 := Scf.iv c0_i32_475 c1_i32_477 k0_t4
  let v3095 : Index := Scalar.indexCast arg15
  let c960_1840 : Index := 960#32
  ![0, 1, v3095.toNat, 960]
def k0_off1632 (k0_t4 : Fin k0_t4_loop.trips) : Fin 4 → Nat :=
  let c2_i32_1841 : BitVec 32 := 2#32
  let v3099 : Index := Scalar.indexCast c2_i32_1841
  let c1_i32_1842 : BitVec 32 := 1#32
  let v3100 : Index := Scalar.indexCast c1_i32_1842
  let c0_i32_475 : BitVec 32 := 0#32
  let c1_i32_477 : BitVec 32 := 1#32
  let arg15 : BitVec 32 := Scf.iv c0_i32_475 c1_i32_477 k0_t4
  let v3101 : Index := Scalar.indexCast arg15
  let c976_1843 : Index := 976#32
  ![2, 1, v3101.toNat, 976]
def k0_off1633 (k0_t4 : Fin k0_t4_loop.trips) : Fin 4 → Nat :=
  let c0_i32_1844 : BitVec 32 := 0#32
  let v3105 : Index := Scalar.indexCast c0_i32_1844
  let c1_i32_1845 : BitVec 32 := 1#32
  let v3106 : Index := Scalar.indexCast c1_i32_1845
  let c0_i32_475 : BitVec 32 := 0#32
  let c1_i32_477 : BitVec 32 := 1#32
  let arg15 : BitVec 32 := Scf.iv c0_i32_475 c1_i32_477 k0_t4
  let v3107 : Index := Scalar.indexCast arg15
  let c976_1846 : Index := 976#32
  ![0, 1, v3107.toNat, 976]
def k0_off1634 (k0_t4 : Fin k0_t4_loop.trips) : Fin 4 → Nat :=
  let c2_i32_1847 : BitVec 32 := 2#32
  let v3111 : Index := Scalar.indexCast c2_i32_1847
  let c1_i32_1848 : BitVec 32 := 1#32
  let v3112 : Index := Scalar.indexCast c1_i32_1848
  let c0_i32_475 : BitVec 32 := 0#32
  let c1_i32_477 : BitVec 32 := 1#32
  let arg15 : BitVec 32 := Scf.iv c0_i32_475 c1_i32_477 k0_t4
  let v3113 : Index := Scalar.indexCast arg15
  let c992_1849 : Index := 992#32
  ![2, 1, v3113.toNat, 992]
def k0_off1635 (k0_t4 : Fin k0_t4_loop.trips) : Fin 4 → Nat :=
  let c0_i32_1850 : BitVec 32 := 0#32
  let v3117 : Index := Scalar.indexCast c0_i32_1850
  let c1_i32_1851 : BitVec 32 := 1#32
  let v3118 : Index := Scalar.indexCast c1_i32_1851
  let c0_i32_475 : BitVec 32 := 0#32
  let c1_i32_477 : BitVec 32 := 1#32
  let arg15 : BitVec 32 := Scf.iv c0_i32_475 c1_i32_477 k0_t4
  let v3119 : Index := Scalar.indexCast arg15
  let c992_1852 : Index := 992#32
  ![0, 1, v3119.toNat, 992]
def k0_off1636 (k0_t4 : Fin k0_t4_loop.trips) : Fin 4 → Nat :=
  let c2_i32_1853 : BitVec 32 := 2#32
  let v3123 : Index := Scalar.indexCast c2_i32_1853
  let c1_i32_1854 : BitVec 32 := 1#32
  let v3124 : Index := Scalar.indexCast c1_i32_1854
  let c0_i32_475 : BitVec 32 := 0#32
  let c1_i32_477 : BitVec 32 := 1#32
  let arg15 : BitVec 32 := Scf.iv c0_i32_475 c1_i32_477 k0_t4
  let v3125 : Index := Scalar.indexCast arg15
  let c1008_1855 : Index := 1008#32
  ![2, 1, v3125.toNat, 1008]
def k0_off1637 (k0_t4 : Fin k0_t4_loop.trips) : Fin 4 → Nat :=
  let c0_i32_1856 : BitVec 32 := 0#32
  let v3129 : Index := Scalar.indexCast c0_i32_1856
  let c1_i32_1857 : BitVec 32 := 1#32
  let v3130 : Index := Scalar.indexCast c1_i32_1857
  let c0_i32_475 : BitVec 32 := 0#32
  let c1_i32_477 : BitVec 32 := 1#32
  let arg15 : BitVec 32 := Scf.iv c0_i32_475 c1_i32_477 k0_t4
  let v3131 : Index := Scalar.indexCast arg15
  let c1008_1858 : Index := 1008#32
  ![0, 1, v3131.toNat, 1008]
def k0_off1638 (k0_t4 : Fin k0_t4_loop.trips) : Fin 4 → Nat :=
  let c2_i32_1859 : BitVec 32 := 2#32
  let v3135 : Index := Scalar.indexCast c2_i32_1859
  let c2_i32_1860 : BitVec 32 := 2#32
  let v3136 : Index := Scalar.indexCast c2_i32_1860
  let c0_i32_475 : BitVec 32 := 0#32
  let c1_i32_477 : BitVec 32 := 1#32
  let arg15 : BitVec 32 := Scf.iv c0_i32_475 c1_i32_477 k0_t4
  let v3137 : Index := Scalar.indexCast arg15
  let c512_1861 : Index := 512#32
  ![2, 2, v3137.toNat, 512]
def k0_off1639 (k0_t4 : Fin k0_t4_loop.trips) : Fin 4 → Nat :=
  let c0_i32_1862 : BitVec 32 := 0#32
  let v3141 : Index := Scalar.indexCast c0_i32_1862
  let c2_i32_1863 : BitVec 32 := 2#32
  let v3142 : Index := Scalar.indexCast c2_i32_1863
  let c0_i32_475 : BitVec 32 := 0#32
  let c1_i32_477 : BitVec 32 := 1#32
  let arg15 : BitVec 32 := Scf.iv c0_i32_475 c1_i32_477 k0_t4
  let v3143 : Index := Scalar.indexCast arg15
  let c512_1864 : Index := 512#32
  ![0, 2, v3143.toNat, 512]
def k0_off1640 (k0_t4 : Fin k0_t4_loop.trips) : Fin 4 → Nat :=
  let c2_i32_1865 : BitVec 32 := 2#32
  let v3147 : Index := Scalar.indexCast c2_i32_1865
  let c2_i32_1866 : BitVec 32 := 2#32
  let v3148 : Index := Scalar.indexCast c2_i32_1866
  let c0_i32_475 : BitVec 32 := 0#32
  let c1_i32_477 : BitVec 32 := 1#32
  let arg15 : BitVec 32 := Scf.iv c0_i32_475 c1_i32_477 k0_t4
  let v3149 : Index := Scalar.indexCast arg15
  let c528_1867 : Index := 528#32
  ![2, 2, v3149.toNat, 528]
def k0_off1641 (k0_t4 : Fin k0_t4_loop.trips) : Fin 4 → Nat :=
  let c0_i32_1868 : BitVec 32 := 0#32
  let v3153 : Index := Scalar.indexCast c0_i32_1868
  let c2_i32_1869 : BitVec 32 := 2#32
  let v3154 : Index := Scalar.indexCast c2_i32_1869
  let c0_i32_475 : BitVec 32 := 0#32
  let c1_i32_477 : BitVec 32 := 1#32
  let arg15 : BitVec 32 := Scf.iv c0_i32_475 c1_i32_477 k0_t4
  let v3155 : Index := Scalar.indexCast arg15
  let c528_1870 : Index := 528#32
  ![0, 2, v3155.toNat, 528]
def k0_off1642 (k0_t4 : Fin k0_t4_loop.trips) : Fin 4 → Nat :=
  let c2_i32_1871 : BitVec 32 := 2#32
  let v3159 : Index := Scalar.indexCast c2_i32_1871
  let c2_i32_1872 : BitVec 32 := 2#32
  let v3160 : Index := Scalar.indexCast c2_i32_1872
  let c0_i32_475 : BitVec 32 := 0#32
  let c1_i32_477 : BitVec 32 := 1#32
  let arg15 : BitVec 32 := Scf.iv c0_i32_475 c1_i32_477 k0_t4
  let v3161 : Index := Scalar.indexCast arg15
  let c544_1873 : Index := 544#32
  ![2, 2, v3161.toNat, 544]
def k0_off1643 (k0_t4 : Fin k0_t4_loop.trips) : Fin 4 → Nat :=
  let c0_i32_1874 : BitVec 32 := 0#32
  let v3165 : Index := Scalar.indexCast c0_i32_1874
  let c2_i32_1875 : BitVec 32 := 2#32
  let v3166 : Index := Scalar.indexCast c2_i32_1875
  let c0_i32_475 : BitVec 32 := 0#32
  let c1_i32_477 : BitVec 32 := 1#32
  let arg15 : BitVec 32 := Scf.iv c0_i32_475 c1_i32_477 k0_t4
  let v3167 : Index := Scalar.indexCast arg15
  let c544_1876 : Index := 544#32
  ![0, 2, v3167.toNat, 544]
def k0_off1644 (k0_t4 : Fin k0_t4_loop.trips) : Fin 4 → Nat :=
  let c2_i32_1877 : BitVec 32 := 2#32
  let v3171 : Index := Scalar.indexCast c2_i32_1877
  let c2_i32_1878 : BitVec 32 := 2#32
  let v3172 : Index := Scalar.indexCast c2_i32_1878
  let c0_i32_475 : BitVec 32 := 0#32
  let c1_i32_477 : BitVec 32 := 1#32
  let arg15 : BitVec 32 := Scf.iv c0_i32_475 c1_i32_477 k0_t4
  let v3173 : Index := Scalar.indexCast arg15
  let c560_1879 : Index := 560#32
  ![2, 2, v3173.toNat, 560]
def k0_off1645 (k0_t4 : Fin k0_t4_loop.trips) : Fin 4 → Nat :=
  let c0_i32_1880 : BitVec 32 := 0#32
  let v3177 : Index := Scalar.indexCast c0_i32_1880
  let c2_i32_1881 : BitVec 32 := 2#32
  let v3178 : Index := Scalar.indexCast c2_i32_1881
  let c0_i32_475 : BitVec 32 := 0#32
  let c1_i32_477 : BitVec 32 := 1#32
  let arg15 : BitVec 32 := Scf.iv c0_i32_475 c1_i32_477 k0_t4
  let v3179 : Index := Scalar.indexCast arg15
  let c560_1882 : Index := 560#32
  ![0, 2, v3179.toNat, 560]
def k0_off1646 (k0_t4 : Fin k0_t4_loop.trips) : Fin 4 → Nat :=
  let c2_i32_1883 : BitVec 32 := 2#32
  let v3183 : Index := Scalar.indexCast c2_i32_1883
  let c2_i32_1884 : BitVec 32 := 2#32
  let v3184 : Index := Scalar.indexCast c2_i32_1884
  let c0_i32_475 : BitVec 32 := 0#32
  let c1_i32_477 : BitVec 32 := 1#32
  let arg15 : BitVec 32 := Scf.iv c0_i32_475 c1_i32_477 k0_t4
  let v3185 : Index := Scalar.indexCast arg15
  let c576_1885 : Index := 576#32
  ![2, 2, v3185.toNat, 576]
def k0_off1647 (k0_t4 : Fin k0_t4_loop.trips) : Fin 4 → Nat :=
  let c0_i32_1886 : BitVec 32 := 0#32
  let v3189 : Index := Scalar.indexCast c0_i32_1886
  let c2_i32_1887 : BitVec 32 := 2#32
  let v3190 : Index := Scalar.indexCast c2_i32_1887
  let c0_i32_475 : BitVec 32 := 0#32
  let c1_i32_477 : BitVec 32 := 1#32
  let arg15 : BitVec 32 := Scf.iv c0_i32_475 c1_i32_477 k0_t4
  let v3191 : Index := Scalar.indexCast arg15
  let c576_1888 : Index := 576#32
  ![0, 2, v3191.toNat, 576]
def k0_off1648 (k0_t4 : Fin k0_t4_loop.trips) : Fin 4 → Nat :=
  let c2_i32_1889 : BitVec 32 := 2#32
  let v3195 : Index := Scalar.indexCast c2_i32_1889
  let c2_i32_1890 : BitVec 32 := 2#32
  let v3196 : Index := Scalar.indexCast c2_i32_1890
  let c0_i32_475 : BitVec 32 := 0#32
  let c1_i32_477 : BitVec 32 := 1#32
  let arg15 : BitVec 32 := Scf.iv c0_i32_475 c1_i32_477 k0_t4
  let v3197 : Index := Scalar.indexCast arg15
  let c592_1891 : Index := 592#32
  ![2, 2, v3197.toNat, 592]
def k0_off1649 (k0_t4 : Fin k0_t4_loop.trips) : Fin 4 → Nat :=
  let c0_i32_1892 : BitVec 32 := 0#32
  let v3201 : Index := Scalar.indexCast c0_i32_1892
  let c2_i32_1893 : BitVec 32 := 2#32
  let v3202 : Index := Scalar.indexCast c2_i32_1893
  let c0_i32_475 : BitVec 32 := 0#32
  let c1_i32_477 : BitVec 32 := 1#32
  let arg15 : BitVec 32 := Scf.iv c0_i32_475 c1_i32_477 k0_t4
  let v3203 : Index := Scalar.indexCast arg15
  let c592_1894 : Index := 592#32
  ![0, 2, v3203.toNat, 592]
def k0_off1650 (k0_t4 : Fin k0_t4_loop.trips) : Fin 4 → Nat :=
  let c2_i32_1895 : BitVec 32 := 2#32
  let v3207 : Index := Scalar.indexCast c2_i32_1895
  let c2_i32_1896 : BitVec 32 := 2#32
  let v3208 : Index := Scalar.indexCast c2_i32_1896
  let c0_i32_475 : BitVec 32 := 0#32
  let c1_i32_477 : BitVec 32 := 1#32
  let arg15 : BitVec 32 := Scf.iv c0_i32_475 c1_i32_477 k0_t4
  let v3209 : Index := Scalar.indexCast arg15
  let c608_1897 : Index := 608#32
  ![2, 2, v3209.toNat, 608]
def k0_off1651 (k0_t4 : Fin k0_t4_loop.trips) : Fin 4 → Nat :=
  let c0_i32_1898 : BitVec 32 := 0#32
  let v3213 : Index := Scalar.indexCast c0_i32_1898
  let c2_i32_1899 : BitVec 32 := 2#32
  let v3214 : Index := Scalar.indexCast c2_i32_1899
  let c0_i32_475 : BitVec 32 := 0#32
  let c1_i32_477 : BitVec 32 := 1#32
  let arg15 : BitVec 32 := Scf.iv c0_i32_475 c1_i32_477 k0_t4
  let v3215 : Index := Scalar.indexCast arg15
  let c608_1900 : Index := 608#32
  ![0, 2, v3215.toNat, 608]
def k0_off1652 (k0_t4 : Fin k0_t4_loop.trips) : Fin 4 → Nat :=
  let c2_i32_1901 : BitVec 32 := 2#32
  let v3219 : Index := Scalar.indexCast c2_i32_1901
  let c2_i32_1902 : BitVec 32 := 2#32
  let v3220 : Index := Scalar.indexCast c2_i32_1902
  let c0_i32_475 : BitVec 32 := 0#32
  let c1_i32_477 : BitVec 32 := 1#32
  let arg15 : BitVec 32 := Scf.iv c0_i32_475 c1_i32_477 k0_t4
  let v3221 : Index := Scalar.indexCast arg15
  let c624_1903 : Index := 624#32
  ![2, 2, v3221.toNat, 624]
def k0_off1653 (k0_t4 : Fin k0_t4_loop.trips) : Fin 4 → Nat :=
  let c0_i32_1904 : BitVec 32 := 0#32
  let v3225 : Index := Scalar.indexCast c0_i32_1904
  let c2_i32_1905 : BitVec 32 := 2#32
  let v3226 : Index := Scalar.indexCast c2_i32_1905
  let c0_i32_475 : BitVec 32 := 0#32
  let c1_i32_477 : BitVec 32 := 1#32
  let arg15 : BitVec 32 := Scf.iv c0_i32_475 c1_i32_477 k0_t4
  let v3227 : Index := Scalar.indexCast arg15
  let c624_1906 : Index := 624#32
  ![0, 2, v3227.toNat, 624]
def k0_off1654 (k0_t4 : Fin k0_t4_loop.trips) : Fin 4 → Nat :=
  let c2_i32_1907 : BitVec 32 := 2#32
  let v3231 : Index := Scalar.indexCast c2_i32_1907
  let c2_i32_1908 : BitVec 32 := 2#32
  let v3232 : Index := Scalar.indexCast c2_i32_1908
  let c0_i32_475 : BitVec 32 := 0#32
  let c1_i32_477 : BitVec 32 := 1#32
  let arg15 : BitVec 32 := Scf.iv c0_i32_475 c1_i32_477 k0_t4
  let v3233 : Index := Scalar.indexCast arg15
  let c640_1909 : Index := 640#32
  ![2, 2, v3233.toNat, 640]
def k0_off1655 (k0_t4 : Fin k0_t4_loop.trips) : Fin 4 → Nat :=
  let c0_i32_1910 : BitVec 32 := 0#32
  let v3237 : Index := Scalar.indexCast c0_i32_1910
  let c2_i32_1911 : BitVec 32 := 2#32
  let v3238 : Index := Scalar.indexCast c2_i32_1911
  let c0_i32_475 : BitVec 32 := 0#32
  let c1_i32_477 : BitVec 32 := 1#32
  let arg15 : BitVec 32 := Scf.iv c0_i32_475 c1_i32_477 k0_t4
  let v3239 : Index := Scalar.indexCast arg15
  let c640_1912 : Index := 640#32
  ![0, 2, v3239.toNat, 640]
def k0_off1656 (k0_t4 : Fin k0_t4_loop.trips) : Fin 4 → Nat :=
  let c2_i32_1913 : BitVec 32 := 2#32
  let v3243 : Index := Scalar.indexCast c2_i32_1913
  let c2_i32_1914 : BitVec 32 := 2#32
  let v3244 : Index := Scalar.indexCast c2_i32_1914
  let c0_i32_475 : BitVec 32 := 0#32
  let c1_i32_477 : BitVec 32 := 1#32
  let arg15 : BitVec 32 := Scf.iv c0_i32_475 c1_i32_477 k0_t4
  let v3245 : Index := Scalar.indexCast arg15
  let c656_1915 : Index := 656#32
  ![2, 2, v3245.toNat, 656]
def k0_off1657 (k0_t4 : Fin k0_t4_loop.trips) : Fin 4 → Nat :=
  let c0_i32_1916 : BitVec 32 := 0#32
  let v3249 : Index := Scalar.indexCast c0_i32_1916
  let c2_i32_1917 : BitVec 32 := 2#32
  let v3250 : Index := Scalar.indexCast c2_i32_1917
  let c0_i32_475 : BitVec 32 := 0#32
  let c1_i32_477 : BitVec 32 := 1#32
  let arg15 : BitVec 32 := Scf.iv c0_i32_475 c1_i32_477 k0_t4
  let v3251 : Index := Scalar.indexCast arg15
  let c656_1918 : Index := 656#32
  ![0, 2, v3251.toNat, 656]
def k0_off1658 (k0_t4 : Fin k0_t4_loop.trips) : Fin 4 → Nat :=
  let c2_i32_1919 : BitVec 32 := 2#32
  let v3255 : Index := Scalar.indexCast c2_i32_1919
  let c2_i32_1920 : BitVec 32 := 2#32
  let v3256 : Index := Scalar.indexCast c2_i32_1920
  let c0_i32_475 : BitVec 32 := 0#32
  let c1_i32_477 : BitVec 32 := 1#32
  let arg15 : BitVec 32 := Scf.iv c0_i32_475 c1_i32_477 k0_t4
  let v3257 : Index := Scalar.indexCast arg15
  let c672_1921 : Index := 672#32
  ![2, 2, v3257.toNat, 672]
def k0_off1659 (k0_t4 : Fin k0_t4_loop.trips) : Fin 4 → Nat :=
  let c0_i32_1922 : BitVec 32 := 0#32
  let v3261 : Index := Scalar.indexCast c0_i32_1922
  let c2_i32_1923 : BitVec 32 := 2#32
  let v3262 : Index := Scalar.indexCast c2_i32_1923
  let c0_i32_475 : BitVec 32 := 0#32
  let c1_i32_477 : BitVec 32 := 1#32
  let arg15 : BitVec 32 := Scf.iv c0_i32_475 c1_i32_477 k0_t4
  let v3263 : Index := Scalar.indexCast arg15
  let c672_1924 : Index := 672#32
  ![0, 2, v3263.toNat, 672]
def k0_off1660 (k0_t4 : Fin k0_t4_loop.trips) : Fin 4 → Nat :=
  let c2_i32_1925 : BitVec 32 := 2#32
  let v3267 : Index := Scalar.indexCast c2_i32_1925
  let c2_i32_1926 : BitVec 32 := 2#32
  let v3268 : Index := Scalar.indexCast c2_i32_1926
  let c0_i32_475 : BitVec 32 := 0#32
  let c1_i32_477 : BitVec 32 := 1#32
  let arg15 : BitVec 32 := Scf.iv c0_i32_475 c1_i32_477 k0_t4
  let v3269 : Index := Scalar.indexCast arg15
  let c688_1927 : Index := 688#32
  ![2, 2, v3269.toNat, 688]
def k0_off1661 (k0_t4 : Fin k0_t4_loop.trips) : Fin 4 → Nat :=
  let c0_i32_1928 : BitVec 32 := 0#32
  let v3273 : Index := Scalar.indexCast c0_i32_1928
  let c2_i32_1929 : BitVec 32 := 2#32
  let v3274 : Index := Scalar.indexCast c2_i32_1929
  let c0_i32_475 : BitVec 32 := 0#32
  let c1_i32_477 : BitVec 32 := 1#32
  let arg15 : BitVec 32 := Scf.iv c0_i32_475 c1_i32_477 k0_t4
  let v3275 : Index := Scalar.indexCast arg15
  let c688_1930 : Index := 688#32
  ![0, 2, v3275.toNat, 688]
def k0_off1662 (k0_t4 : Fin k0_t4_loop.trips) : Fin 4 → Nat :=
  let c2_i32_1931 : BitVec 32 := 2#32
  let v3279 : Index := Scalar.indexCast c2_i32_1931
  let c2_i32_1932 : BitVec 32 := 2#32
  let v3280 : Index := Scalar.indexCast c2_i32_1932
  let c0_i32_475 : BitVec 32 := 0#32
  let c1_i32_477 : BitVec 32 := 1#32
  let arg15 : BitVec 32 := Scf.iv c0_i32_475 c1_i32_477 k0_t4
  let v3281 : Index := Scalar.indexCast arg15
  let c704_1933 : Index := 704#32
  ![2, 2, v3281.toNat, 704]
def k0_off1663 (k0_t4 : Fin k0_t4_loop.trips) : Fin 4 → Nat :=
  let c0_i32_1934 : BitVec 32 := 0#32
  let v3285 : Index := Scalar.indexCast c0_i32_1934
  let c2_i32_1935 : BitVec 32 := 2#32
  let v3286 : Index := Scalar.indexCast c2_i32_1935
  let c0_i32_475 : BitVec 32 := 0#32
  let c1_i32_477 : BitVec 32 := 1#32
  let arg15 : BitVec 32 := Scf.iv c0_i32_475 c1_i32_477 k0_t4
  let v3287 : Index := Scalar.indexCast arg15
  let c704_1936 : Index := 704#32
  ![0, 2, v3287.toNat, 704]
def k0_off1664 (k0_t4 : Fin k0_t4_loop.trips) : Fin 4 → Nat :=
  let c2_i32_1937 : BitVec 32 := 2#32
  let v3291 : Index := Scalar.indexCast c2_i32_1937
  let c2_i32_1938 : BitVec 32 := 2#32
  let v3292 : Index := Scalar.indexCast c2_i32_1938
  let c0_i32_475 : BitVec 32 := 0#32
  let c1_i32_477 : BitVec 32 := 1#32
  let arg15 : BitVec 32 := Scf.iv c0_i32_475 c1_i32_477 k0_t4
  let v3293 : Index := Scalar.indexCast arg15
  let c720_1939 : Index := 720#32
  ![2, 2, v3293.toNat, 720]
def k0_off1665 (k0_t4 : Fin k0_t4_loop.trips) : Fin 4 → Nat :=
  let c0_i32_1940 : BitVec 32 := 0#32
  let v3297 : Index := Scalar.indexCast c0_i32_1940
  let c2_i32_1941 : BitVec 32 := 2#32
  let v3298 : Index := Scalar.indexCast c2_i32_1941
  let c0_i32_475 : BitVec 32 := 0#32
  let c1_i32_477 : BitVec 32 := 1#32
  let arg15 : BitVec 32 := Scf.iv c0_i32_475 c1_i32_477 k0_t4
  let v3299 : Index := Scalar.indexCast arg15
  let c720_1942 : Index := 720#32
  ![0, 2, v3299.toNat, 720]
def k0_off1666 (k0_t4 : Fin k0_t4_loop.trips) : Fin 4 → Nat :=
  let c2_i32_1943 : BitVec 32 := 2#32
  let v3303 : Index := Scalar.indexCast c2_i32_1943
  let c2_i32_1944 : BitVec 32 := 2#32
  let v3304 : Index := Scalar.indexCast c2_i32_1944
  let c0_i32_475 : BitVec 32 := 0#32
  let c1_i32_477 : BitVec 32 := 1#32
  let arg15 : BitVec 32 := Scf.iv c0_i32_475 c1_i32_477 k0_t4
  let v3305 : Index := Scalar.indexCast arg15
  let c736_1945 : Index := 736#32
  ![2, 2, v3305.toNat, 736]
def k0_off1667 (k0_t4 : Fin k0_t4_loop.trips) : Fin 4 → Nat :=
  let c0_i32_1946 : BitVec 32 := 0#32
  let v3309 : Index := Scalar.indexCast c0_i32_1946
  let c2_i32_1947 : BitVec 32 := 2#32
  let v3310 : Index := Scalar.indexCast c2_i32_1947
  let c0_i32_475 : BitVec 32 := 0#32
  let c1_i32_477 : BitVec 32 := 1#32
  let arg15 : BitVec 32 := Scf.iv c0_i32_475 c1_i32_477 k0_t4
  let v3311 : Index := Scalar.indexCast arg15
  let c736_1948 : Index := 736#32
  ![0, 2, v3311.toNat, 736]
def k0_off1668 (k0_t4 : Fin k0_t4_loop.trips) : Fin 4 → Nat :=
  let c2_i32_1949 : BitVec 32 := 2#32
  let v3315 : Index := Scalar.indexCast c2_i32_1949
  let c2_i32_1950 : BitVec 32 := 2#32
  let v3316 : Index := Scalar.indexCast c2_i32_1950
  let c0_i32_475 : BitVec 32 := 0#32
  let c1_i32_477 : BitVec 32 := 1#32
  let arg15 : BitVec 32 := Scf.iv c0_i32_475 c1_i32_477 k0_t4
  let v3317 : Index := Scalar.indexCast arg15
  let c752_1951 : Index := 752#32
  ![2, 2, v3317.toNat, 752]
def k0_off1669 (k0_t4 : Fin k0_t4_loop.trips) : Fin 4 → Nat :=
  let c0_i32_1952 : BitVec 32 := 0#32
  let v3321 : Index := Scalar.indexCast c0_i32_1952
  let c2_i32_1953 : BitVec 32 := 2#32
  let v3322 : Index := Scalar.indexCast c2_i32_1953
  let c0_i32_475 : BitVec 32 := 0#32
  let c1_i32_477 : BitVec 32 := 1#32
  let arg15 : BitVec 32 := Scf.iv c0_i32_475 c1_i32_477 k0_t4
  let v3323 : Index := Scalar.indexCast arg15
  let c752_1954 : Index := 752#32
  ![0, 2, v3323.toNat, 752]
def k0_off1670 (k0_t4 : Fin k0_t4_loop.trips) : Fin 4 → Nat :=
  let c2_i32_1955 : BitVec 32 := 2#32
  let v3327 : Index := Scalar.indexCast c2_i32_1955
  let c2_i32_1956 : BitVec 32 := 2#32
  let v3328 : Index := Scalar.indexCast c2_i32_1956
  let c0_i32_475 : BitVec 32 := 0#32
  let c1_i32_477 : BitVec 32 := 1#32
  let arg15 : BitVec 32 := Scf.iv c0_i32_475 c1_i32_477 k0_t4
  let v3329 : Index := Scalar.indexCast arg15
  let c768_1957 : Index := 768#32
  ![2, 2, v3329.toNat, 768]
def k0_off1671 (k0_t4 : Fin k0_t4_loop.trips) : Fin 4 → Nat :=
  let c0_i32_1958 : BitVec 32 := 0#32
  let v3333 : Index := Scalar.indexCast c0_i32_1958
  let c2_i32_1959 : BitVec 32 := 2#32
  let v3334 : Index := Scalar.indexCast c2_i32_1959
  let c0_i32_475 : BitVec 32 := 0#32
  let c1_i32_477 : BitVec 32 := 1#32
  let arg15 : BitVec 32 := Scf.iv c0_i32_475 c1_i32_477 k0_t4
  let v3335 : Index := Scalar.indexCast arg15
  let c768_1960 : Index := 768#32
  ![0, 2, v3335.toNat, 768]
def k0_off1672 (k0_t4 : Fin k0_t4_loop.trips) : Fin 4 → Nat :=
  let c2_i32_1961 : BitVec 32 := 2#32
  let v3339 : Index := Scalar.indexCast c2_i32_1961
  let c2_i32_1962 : BitVec 32 := 2#32
  let v3340 : Index := Scalar.indexCast c2_i32_1962
  let c0_i32_475 : BitVec 32 := 0#32
  let c1_i32_477 : BitVec 32 := 1#32
  let arg15 : BitVec 32 := Scf.iv c0_i32_475 c1_i32_477 k0_t4
  let v3341 : Index := Scalar.indexCast arg15
  let c784_1963 : Index := 784#32
  ![2, 2, v3341.toNat, 784]
def k0_off1673 (k0_t4 : Fin k0_t4_loop.trips) : Fin 4 → Nat :=
  let c0_i32_1964 : BitVec 32 := 0#32
  let v3345 : Index := Scalar.indexCast c0_i32_1964
  let c2_i32_1965 : BitVec 32 := 2#32
  let v3346 : Index := Scalar.indexCast c2_i32_1965
  let c0_i32_475 : BitVec 32 := 0#32
  let c1_i32_477 : BitVec 32 := 1#32
  let arg15 : BitVec 32 := Scf.iv c0_i32_475 c1_i32_477 k0_t4
  let v3347 : Index := Scalar.indexCast arg15
  let c784_1966 : Index := 784#32
  ![0, 2, v3347.toNat, 784]
def k0_off1674 (k0_t4 : Fin k0_t4_loop.trips) : Fin 4 → Nat :=
  let c2_i32_1967 : BitVec 32 := 2#32
  let v3351 : Index := Scalar.indexCast c2_i32_1967
  let c2_i32_1968 : BitVec 32 := 2#32
  let v3352 : Index := Scalar.indexCast c2_i32_1968
  let c0_i32_475 : BitVec 32 := 0#32
  let c1_i32_477 : BitVec 32 := 1#32
  let arg15 : BitVec 32 := Scf.iv c0_i32_475 c1_i32_477 k0_t4
  let v3353 : Index := Scalar.indexCast arg15
  let c800_1969 : Index := 800#32
  ![2, 2, v3353.toNat, 800]
def k0_off1675 (k0_t4 : Fin k0_t4_loop.trips) : Fin 4 → Nat :=
  let c0_i32_1970 : BitVec 32 := 0#32
  let v3357 : Index := Scalar.indexCast c0_i32_1970
  let c2_i32_1971 : BitVec 32 := 2#32
  let v3358 : Index := Scalar.indexCast c2_i32_1971
  let c0_i32_475 : BitVec 32 := 0#32
  let c1_i32_477 : BitVec 32 := 1#32
  let arg15 : BitVec 32 := Scf.iv c0_i32_475 c1_i32_477 k0_t4
  let v3359 : Index := Scalar.indexCast arg15
  let c800_1972 : Index := 800#32
  ![0, 2, v3359.toNat, 800]
def k0_off1676 (k0_t4 : Fin k0_t4_loop.trips) : Fin 4 → Nat :=
  let c2_i32_1973 : BitVec 32 := 2#32
  let v3363 : Index := Scalar.indexCast c2_i32_1973
  let c2_i32_1974 : BitVec 32 := 2#32
  let v3364 : Index := Scalar.indexCast c2_i32_1974
  let c0_i32_475 : BitVec 32 := 0#32
  let c1_i32_477 : BitVec 32 := 1#32
  let arg15 : BitVec 32 := Scf.iv c0_i32_475 c1_i32_477 k0_t4
  let v3365 : Index := Scalar.indexCast arg15
  let c816_1975 : Index := 816#32
  ![2, 2, v3365.toNat, 816]
def k0_off1677 (k0_t4 : Fin k0_t4_loop.trips) : Fin 4 → Nat :=
  let c0_i32_1976 : BitVec 32 := 0#32
  let v3369 : Index := Scalar.indexCast c0_i32_1976
  let c2_i32_1977 : BitVec 32 := 2#32
  let v3370 : Index := Scalar.indexCast c2_i32_1977
  let c0_i32_475 : BitVec 32 := 0#32
  let c1_i32_477 : BitVec 32 := 1#32
  let arg15 : BitVec 32 := Scf.iv c0_i32_475 c1_i32_477 k0_t4
  let v3371 : Index := Scalar.indexCast arg15
  let c816_1978 : Index := 816#32
  ![0, 2, v3371.toNat, 816]
def k0_off1678 (k0_t4 : Fin k0_t4_loop.trips) : Fin 4 → Nat :=
  let c2_i32_1979 : BitVec 32 := 2#32
  let v3375 : Index := Scalar.indexCast c2_i32_1979
  let c2_i32_1980 : BitVec 32 := 2#32
  let v3376 : Index := Scalar.indexCast c2_i32_1980
  let c0_i32_475 : BitVec 32 := 0#32
  let c1_i32_477 : BitVec 32 := 1#32
  let arg15 : BitVec 32 := Scf.iv c0_i32_475 c1_i32_477 k0_t4
  let v3377 : Index := Scalar.indexCast arg15
  let c832_1981 : Index := 832#32
  ![2, 2, v3377.toNat, 832]
def k0_off1679 (k0_t4 : Fin k0_t4_loop.trips) : Fin 4 → Nat :=
  let c0_i32_1982 : BitVec 32 := 0#32
  let v3381 : Index := Scalar.indexCast c0_i32_1982
  let c2_i32_1983 : BitVec 32 := 2#32
  let v3382 : Index := Scalar.indexCast c2_i32_1983
  let c0_i32_475 : BitVec 32 := 0#32
  let c1_i32_477 : BitVec 32 := 1#32
  let arg15 : BitVec 32 := Scf.iv c0_i32_475 c1_i32_477 k0_t4
  let v3383 : Index := Scalar.indexCast arg15
  let c832_1984 : Index := 832#32
  ![0, 2, v3383.toNat, 832]
def k0_off1680 (k0_t4 : Fin k0_t4_loop.trips) : Fin 4 → Nat :=
  let c2_i32_1985 : BitVec 32 := 2#32
  let v3387 : Index := Scalar.indexCast c2_i32_1985
  let c2_i32_1986 : BitVec 32 := 2#32
  let v3388 : Index := Scalar.indexCast c2_i32_1986
  let c0_i32_475 : BitVec 32 := 0#32
  let c1_i32_477 : BitVec 32 := 1#32
  let arg15 : BitVec 32 := Scf.iv c0_i32_475 c1_i32_477 k0_t4
  let v3389 : Index := Scalar.indexCast arg15
  let c848_1987 : Index := 848#32
  ![2, 2, v3389.toNat, 848]
def k0_off1681 (k0_t4 : Fin k0_t4_loop.trips) : Fin 4 → Nat :=
  let c0_i32_1988 : BitVec 32 := 0#32
  let v3393 : Index := Scalar.indexCast c0_i32_1988
  let c2_i32_1989 : BitVec 32 := 2#32
  let v3394 : Index := Scalar.indexCast c2_i32_1989
  let c0_i32_475 : BitVec 32 := 0#32
  let c1_i32_477 : BitVec 32 := 1#32
  let arg15 : BitVec 32 := Scf.iv c0_i32_475 c1_i32_477 k0_t4
  let v3395 : Index := Scalar.indexCast arg15
  let c848_1990 : Index := 848#32
  ![0, 2, v3395.toNat, 848]
def k0_off1682 (k0_t4 : Fin k0_t4_loop.trips) : Fin 4 → Nat :=
  let c2_i32_1991 : BitVec 32 := 2#32
  let v3399 : Index := Scalar.indexCast c2_i32_1991
  let c2_i32_1992 : BitVec 32 := 2#32
  let v3400 : Index := Scalar.indexCast c2_i32_1992
  let c0_i32_475 : BitVec 32 := 0#32
  let c1_i32_477 : BitVec 32 := 1#32
  let arg15 : BitVec 32 := Scf.iv c0_i32_475 c1_i32_477 k0_t4
  let v3401 : Index := Scalar.indexCast arg15
  let c864_1993 : Index := 864#32
  ![2, 2, v3401.toNat, 864]
def k0_off1683 (k0_t4 : Fin k0_t4_loop.trips) : Fin 4 → Nat :=
  let c0_i32_1994 : BitVec 32 := 0#32
  let v3405 : Index := Scalar.indexCast c0_i32_1994
  let c2_i32_1995 : BitVec 32 := 2#32
  let v3406 : Index := Scalar.indexCast c2_i32_1995
  let c0_i32_475 : BitVec 32 := 0#32
  let c1_i32_477 : BitVec 32 := 1#32
  let arg15 : BitVec 32 := Scf.iv c0_i32_475 c1_i32_477 k0_t4
  let v3407 : Index := Scalar.indexCast arg15
  let c864_1996 : Index := 864#32
  ![0, 2, v3407.toNat, 864]
def k0_off1684 (k0_t4 : Fin k0_t4_loop.trips) : Fin 4 → Nat :=
  let c2_i32_1997 : BitVec 32 := 2#32
  let v3411 : Index := Scalar.indexCast c2_i32_1997
  let c2_i32_1998 : BitVec 32 := 2#32
  let v3412 : Index := Scalar.indexCast c2_i32_1998
  let c0_i32_475 : BitVec 32 := 0#32
  let c1_i32_477 : BitVec 32 := 1#32
  let arg15 : BitVec 32 := Scf.iv c0_i32_475 c1_i32_477 k0_t4
  let v3413 : Index := Scalar.indexCast arg15
  let c880_1999 : Index := 880#32
  ![2, 2, v3413.toNat, 880]
def k0_off1685 (k0_t4 : Fin k0_t4_loop.trips) : Fin 4 → Nat :=
  let c0_i32_2000 : BitVec 32 := 0#32
  let v3417 : Index := Scalar.indexCast c0_i32_2000
  let c2_i32_2001 : BitVec 32 := 2#32
  let v3418 : Index := Scalar.indexCast c2_i32_2001
  let c0_i32_475 : BitVec 32 := 0#32
  let c1_i32_477 : BitVec 32 := 1#32
  let arg15 : BitVec 32 := Scf.iv c0_i32_475 c1_i32_477 k0_t4
  let v3419 : Index := Scalar.indexCast arg15
  let c880_2002 : Index := 880#32
  ![0, 2, v3419.toNat, 880]
def k0_off1686 (k0_t4 : Fin k0_t4_loop.trips) : Fin 4 → Nat :=
  let c2_i32_2003 : BitVec 32 := 2#32
  let v3423 : Index := Scalar.indexCast c2_i32_2003
  let c2_i32_2004 : BitVec 32 := 2#32
  let v3424 : Index := Scalar.indexCast c2_i32_2004
  let c0_i32_475 : BitVec 32 := 0#32
  let c1_i32_477 : BitVec 32 := 1#32
  let arg15 : BitVec 32 := Scf.iv c0_i32_475 c1_i32_477 k0_t4
  let v3425 : Index := Scalar.indexCast arg15
  let c896_2005 : Index := 896#32
  ![2, 2, v3425.toNat, 896]
def k0_off1687 (k0_t4 : Fin k0_t4_loop.trips) : Fin 4 → Nat :=
  let c0_i32_2006 : BitVec 32 := 0#32
  let v3429 : Index := Scalar.indexCast c0_i32_2006
  let c2_i32_2007 : BitVec 32 := 2#32
  let v3430 : Index := Scalar.indexCast c2_i32_2007
  let c0_i32_475 : BitVec 32 := 0#32
  let c1_i32_477 : BitVec 32 := 1#32
  let arg15 : BitVec 32 := Scf.iv c0_i32_475 c1_i32_477 k0_t4
  let v3431 : Index := Scalar.indexCast arg15
  let c896_2008 : Index := 896#32
  ![0, 2, v3431.toNat, 896]
def k0_off1688 (k0_t4 : Fin k0_t4_loop.trips) : Fin 4 → Nat :=
  let c2_i32_2009 : BitVec 32 := 2#32
  let v3435 : Index := Scalar.indexCast c2_i32_2009
  let c2_i32_2010 : BitVec 32 := 2#32
  let v3436 : Index := Scalar.indexCast c2_i32_2010
  let c0_i32_475 : BitVec 32 := 0#32
  let c1_i32_477 : BitVec 32 := 1#32
  let arg15 : BitVec 32 := Scf.iv c0_i32_475 c1_i32_477 k0_t4
  let v3437 : Index := Scalar.indexCast arg15
  let c912_2011 : Index := 912#32
  ![2, 2, v3437.toNat, 912]
def k0_off1689 (k0_t4 : Fin k0_t4_loop.trips) : Fin 4 → Nat :=
  let c0_i32_2012 : BitVec 32 := 0#32
  let v3441 : Index := Scalar.indexCast c0_i32_2012
  let c2_i32_2013 : BitVec 32 := 2#32
  let v3442 : Index := Scalar.indexCast c2_i32_2013
  let c0_i32_475 : BitVec 32 := 0#32
  let c1_i32_477 : BitVec 32 := 1#32
  let arg15 : BitVec 32 := Scf.iv c0_i32_475 c1_i32_477 k0_t4
  let v3443 : Index := Scalar.indexCast arg15
  let c912_2014 : Index := 912#32
  ![0, 2, v3443.toNat, 912]
def k0_off1690 (k0_t4 : Fin k0_t4_loop.trips) : Fin 4 → Nat :=
  let c2_i32_2015 : BitVec 32 := 2#32
  let v3447 : Index := Scalar.indexCast c2_i32_2015
  let c2_i32_2016 : BitVec 32 := 2#32
  let v3448 : Index := Scalar.indexCast c2_i32_2016
  let c0_i32_475 : BitVec 32 := 0#32
  let c1_i32_477 : BitVec 32 := 1#32
  let arg15 : BitVec 32 := Scf.iv c0_i32_475 c1_i32_477 k0_t4
  let v3449 : Index := Scalar.indexCast arg15
  let c928_2017 : Index := 928#32
  ![2, 2, v3449.toNat, 928]
def k0_off1691 (k0_t4 : Fin k0_t4_loop.trips) : Fin 4 → Nat :=
  let c0_i32_2018 : BitVec 32 := 0#32
  let v3453 : Index := Scalar.indexCast c0_i32_2018
  let c2_i32_2019 : BitVec 32 := 2#32
  let v3454 : Index := Scalar.indexCast c2_i32_2019
  let c0_i32_475 : BitVec 32 := 0#32
  let c1_i32_477 : BitVec 32 := 1#32
  let arg15 : BitVec 32 := Scf.iv c0_i32_475 c1_i32_477 k0_t4
  let v3455 : Index := Scalar.indexCast arg15
  let c928_2020 : Index := 928#32
  ![0, 2, v3455.toNat, 928]
def k0_off1692 (k0_t4 : Fin k0_t4_loop.trips) : Fin 4 → Nat :=
  let c2_i32_2021 : BitVec 32 := 2#32
  let v3459 : Index := Scalar.indexCast c2_i32_2021
  let c2_i32_2022 : BitVec 32 := 2#32
  let v3460 : Index := Scalar.indexCast c2_i32_2022
  let c0_i32_475 : BitVec 32 := 0#32
  let c1_i32_477 : BitVec 32 := 1#32
  let arg15 : BitVec 32 := Scf.iv c0_i32_475 c1_i32_477 k0_t4
  let v3461 : Index := Scalar.indexCast arg15
  let c944_2023 : Index := 944#32
  ![2, 2, v3461.toNat, 944]
def k0_off1693 (k0_t4 : Fin k0_t4_loop.trips) : Fin 4 → Nat :=
  let c0_i32_2024 : BitVec 32 := 0#32
  let v3465 : Index := Scalar.indexCast c0_i32_2024
  let c2_i32_2025 : BitVec 32 := 2#32
  let v3466 : Index := Scalar.indexCast c2_i32_2025
  let c0_i32_475 : BitVec 32 := 0#32
  let c1_i32_477 : BitVec 32 := 1#32
  let arg15 : BitVec 32 := Scf.iv c0_i32_475 c1_i32_477 k0_t4
  let v3467 : Index := Scalar.indexCast arg15
  let c944_2026 : Index := 944#32
  ![0, 2, v3467.toNat, 944]
def k0_off1694 (k0_t4 : Fin k0_t4_loop.trips) : Fin 4 → Nat :=
  let c2_i32_2027 : BitVec 32 := 2#32
  let v3471 : Index := Scalar.indexCast c2_i32_2027
  let c2_i32_2028 : BitVec 32 := 2#32
  let v3472 : Index := Scalar.indexCast c2_i32_2028
  let c0_i32_475 : BitVec 32 := 0#32
  let c1_i32_477 : BitVec 32 := 1#32
  let arg15 : BitVec 32 := Scf.iv c0_i32_475 c1_i32_477 k0_t4
  let v3473 : Index := Scalar.indexCast arg15
  let c960_2029 : Index := 960#32
  ![2, 2, v3473.toNat, 960]
def k0_off1695 (k0_t4 : Fin k0_t4_loop.trips) : Fin 4 → Nat :=
  let c0_i32_2030 : BitVec 32 := 0#32
  let v3477 : Index := Scalar.indexCast c0_i32_2030
  let c2_i32_2031 : BitVec 32 := 2#32
  let v3478 : Index := Scalar.indexCast c2_i32_2031
  let c0_i32_475 : BitVec 32 := 0#32
  let c1_i32_477 : BitVec 32 := 1#32
  let arg15 : BitVec 32 := Scf.iv c0_i32_475 c1_i32_477 k0_t4
  let v3479 : Index := Scalar.indexCast arg15
  let c960_2032 : Index := 960#32
  ![0, 2, v3479.toNat, 960]
def k0_off1696 (k0_t4 : Fin k0_t4_loop.trips) : Fin 4 → Nat :=
  let c2_i32_2033 : BitVec 32 := 2#32
  let v3483 : Index := Scalar.indexCast c2_i32_2033
  let c2_i32_2034 : BitVec 32 := 2#32
  let v3484 : Index := Scalar.indexCast c2_i32_2034
  let c0_i32_475 : BitVec 32 := 0#32
  let c1_i32_477 : BitVec 32 := 1#32
  let arg15 : BitVec 32 := Scf.iv c0_i32_475 c1_i32_477 k0_t4
  let v3485 : Index := Scalar.indexCast arg15
  let c976_2035 : Index := 976#32
  ![2, 2, v3485.toNat, 976]
def k0_off1697 (k0_t4 : Fin k0_t4_loop.trips) : Fin 4 → Nat :=
  let c0_i32_2036 : BitVec 32 := 0#32
  let v3489 : Index := Scalar.indexCast c0_i32_2036
  let c2_i32_2037 : BitVec 32 := 2#32
  let v3490 : Index := Scalar.indexCast c2_i32_2037
  let c0_i32_475 : BitVec 32 := 0#32
  let c1_i32_477 : BitVec 32 := 1#32
  let arg15 : BitVec 32 := Scf.iv c0_i32_475 c1_i32_477 k0_t4
  let v3491 : Index := Scalar.indexCast arg15
  let c976_2038 : Index := 976#32
  ![0, 2, v3491.toNat, 976]
def k0_off1698 (k0_t4 : Fin k0_t4_loop.trips) : Fin 4 → Nat :=
  let c2_i32_2039 : BitVec 32 := 2#32
  let v3495 : Index := Scalar.indexCast c2_i32_2039
  let c2_i32_2040 : BitVec 32 := 2#32
  let v3496 : Index := Scalar.indexCast c2_i32_2040
  let c0_i32_475 : BitVec 32 := 0#32
  let c1_i32_477 : BitVec 32 := 1#32
  let arg15 : BitVec 32 := Scf.iv c0_i32_475 c1_i32_477 k0_t4
  let v3497 : Index := Scalar.indexCast arg15
  let c992_2041 : Index := 992#32
  ![2, 2, v3497.toNat, 992]
def k0_off1699 (k0_t4 : Fin k0_t4_loop.trips) : Fin 4 → Nat :=
  let c0_i32_2042 : BitVec 32 := 0#32
  let v3501 : Index := Scalar.indexCast c0_i32_2042
  let c2_i32_2043 : BitVec 32 := 2#32
  let v3502 : Index := Scalar.indexCast c2_i32_2043
  let c0_i32_475 : BitVec 32 := 0#32
  let c1_i32_477 : BitVec 32 := 1#32
  let arg15 : BitVec 32 := Scf.iv c0_i32_475 c1_i32_477 k0_t4
  let v3503 : Index := Scalar.indexCast arg15
  let c992_2044 : Index := 992#32
  ![0, 2, v3503.toNat, 992]
def k0_off1700 (k0_t4 : Fin k0_t4_loop.trips) : Fin 4 → Nat :=
  let c2_i32_2045 : BitVec 32 := 2#32
  let v3507 : Index := Scalar.indexCast c2_i32_2045
  let c2_i32_2046 : BitVec 32 := 2#32
  let v3508 : Index := Scalar.indexCast c2_i32_2046
  let c0_i32_475 : BitVec 32 := 0#32
  let c1_i32_477 : BitVec 32 := 1#32
  let arg15 : BitVec 32 := Scf.iv c0_i32_475 c1_i32_477 k0_t4
  let v3509 : Index := Scalar.indexCast arg15
  let c1008_2047 : Index := 1008#32
  ![2, 2, v3509.toNat, 1008]
def k0_off1701 (k0_t4 : Fin k0_t4_loop.trips) : Fin 4 → Nat :=
  let c0_i32_2048 : BitVec 32 := 0#32
  let v3513 : Index := Scalar.indexCast c0_i32_2048
  let c2_i32_2049 : BitVec 32 := 2#32
  let v3514 : Index := Scalar.indexCast c2_i32_2049
  let c0_i32_475 : BitVec 32 := 0#32
  let c1_i32_477 : BitVec 32 := 1#32
  let arg15 : BitVec 32 := Scf.iv c0_i32_475 c1_i32_477 k0_t4
  let v3515 : Index := Scalar.indexCast arg15
  let c1008_2050 : Index := 1008#32
  ![0, 2, v3515.toNat, 1008]
def k0_off1702 (k0_t4 : Fin k0_t4_loop.trips) : Fin 4 → Nat :=
  let c2_i32_2051 : BitVec 32 := 2#32
  let v3519 : Index := Scalar.indexCast c2_i32_2051
  let c3_i32_2052 : BitVec 32 := 3#32
  let v3520 : Index := Scalar.indexCast c3_i32_2052
  let c0_i32_475 : BitVec 32 := 0#32
  let c1_i32_477 : BitVec 32 := 1#32
  let arg15 : BitVec 32 := Scf.iv c0_i32_475 c1_i32_477 k0_t4
  let v3521 : Index := Scalar.indexCast arg15
  let c512_2053 : Index := 512#32
  ![2, 3, v3521.toNat, 512]
def k0_off1703 (k0_t4 : Fin k0_t4_loop.trips) : Fin 4 → Nat :=
  let c0_i32_2054 : BitVec 32 := 0#32
  let v3525 : Index := Scalar.indexCast c0_i32_2054
  let c3_i32_2055 : BitVec 32 := 3#32
  let v3526 : Index := Scalar.indexCast c3_i32_2055
  let c0_i32_475 : BitVec 32 := 0#32
  let c1_i32_477 : BitVec 32 := 1#32
  let arg15 : BitVec 32 := Scf.iv c0_i32_475 c1_i32_477 k0_t4
  let v3527 : Index := Scalar.indexCast arg15
  let c512_2056 : Index := 512#32
  ![0, 3, v3527.toNat, 512]
def k0_off1704 (k0_t4 : Fin k0_t4_loop.trips) : Fin 4 → Nat :=
  let c2_i32_2057 : BitVec 32 := 2#32
  let v3531 : Index := Scalar.indexCast c2_i32_2057
  let c3_i32_2058 : BitVec 32 := 3#32
  let v3532 : Index := Scalar.indexCast c3_i32_2058
  let c0_i32_475 : BitVec 32 := 0#32
  let c1_i32_477 : BitVec 32 := 1#32
  let arg15 : BitVec 32 := Scf.iv c0_i32_475 c1_i32_477 k0_t4
  let v3533 : Index := Scalar.indexCast arg15
  let c528_2059 : Index := 528#32
  ![2, 3, v3533.toNat, 528]
def k0_off1705 (k0_t4 : Fin k0_t4_loop.trips) : Fin 4 → Nat :=
  let c0_i32_2060 : BitVec 32 := 0#32
  let v3537 : Index := Scalar.indexCast c0_i32_2060
  let c3_i32_2061 : BitVec 32 := 3#32
  let v3538 : Index := Scalar.indexCast c3_i32_2061
  let c0_i32_475 : BitVec 32 := 0#32
  let c1_i32_477 : BitVec 32 := 1#32
  let arg15 : BitVec 32 := Scf.iv c0_i32_475 c1_i32_477 k0_t4
  let v3539 : Index := Scalar.indexCast arg15
  let c528_2062 : Index := 528#32
  ![0, 3, v3539.toNat, 528]
def k0_off1706 (k0_t4 : Fin k0_t4_loop.trips) : Fin 4 → Nat :=
  let c2_i32_2063 : BitVec 32 := 2#32
  let v3543 : Index := Scalar.indexCast c2_i32_2063
  let c3_i32_2064 : BitVec 32 := 3#32
  let v3544 : Index := Scalar.indexCast c3_i32_2064
  let c0_i32_475 : BitVec 32 := 0#32
  let c1_i32_477 : BitVec 32 := 1#32
  let arg15 : BitVec 32 := Scf.iv c0_i32_475 c1_i32_477 k0_t4
  let v3545 : Index := Scalar.indexCast arg15
  let c544_2065 : Index := 544#32
  ![2, 3, v3545.toNat, 544]
def k0_off1707 (k0_t4 : Fin k0_t4_loop.trips) : Fin 4 → Nat :=
  let c0_i32_2066 : BitVec 32 := 0#32
  let v3549 : Index := Scalar.indexCast c0_i32_2066
  let c3_i32_2067 : BitVec 32 := 3#32
  let v3550 : Index := Scalar.indexCast c3_i32_2067
  let c0_i32_475 : BitVec 32 := 0#32
  let c1_i32_477 : BitVec 32 := 1#32
  let arg15 : BitVec 32 := Scf.iv c0_i32_475 c1_i32_477 k0_t4
  let v3551 : Index := Scalar.indexCast arg15
  let c544_2068 : Index := 544#32
  ![0, 3, v3551.toNat, 544]
def k0_off1708 (k0_t4 : Fin k0_t4_loop.trips) : Fin 4 → Nat :=
  let c2_i32_2069 : BitVec 32 := 2#32
  let v3555 : Index := Scalar.indexCast c2_i32_2069
  let c3_i32_2070 : BitVec 32 := 3#32
  let v3556 : Index := Scalar.indexCast c3_i32_2070
  let c0_i32_475 : BitVec 32 := 0#32
  let c1_i32_477 : BitVec 32 := 1#32
  let arg15 : BitVec 32 := Scf.iv c0_i32_475 c1_i32_477 k0_t4
  let v3557 : Index := Scalar.indexCast arg15
  let c560_2071 : Index := 560#32
  ![2, 3, v3557.toNat, 560]
def k0_off1709 (k0_t4 : Fin k0_t4_loop.trips) : Fin 4 → Nat :=
  let c0_i32_2072 : BitVec 32 := 0#32
  let v3561 : Index := Scalar.indexCast c0_i32_2072
  let c3_i32_2073 : BitVec 32 := 3#32
  let v3562 : Index := Scalar.indexCast c3_i32_2073
  let c0_i32_475 : BitVec 32 := 0#32
  let c1_i32_477 : BitVec 32 := 1#32
  let arg15 : BitVec 32 := Scf.iv c0_i32_475 c1_i32_477 k0_t4
  let v3563 : Index := Scalar.indexCast arg15
  let c560_2074 : Index := 560#32
  ![0, 3, v3563.toNat, 560]
def k0_off1710 (k0_t4 : Fin k0_t4_loop.trips) : Fin 4 → Nat :=
  let c2_i32_2075 : BitVec 32 := 2#32
  let v3567 : Index := Scalar.indexCast c2_i32_2075
  let c3_i32_2076 : BitVec 32 := 3#32
  let v3568 : Index := Scalar.indexCast c3_i32_2076
  let c0_i32_475 : BitVec 32 := 0#32
  let c1_i32_477 : BitVec 32 := 1#32
  let arg15 : BitVec 32 := Scf.iv c0_i32_475 c1_i32_477 k0_t4
  let v3569 : Index := Scalar.indexCast arg15
  let c576_2077 : Index := 576#32
  ![2, 3, v3569.toNat, 576]
def k0_off1711 (k0_t4 : Fin k0_t4_loop.trips) : Fin 4 → Nat :=
  let c0_i32_2078 : BitVec 32 := 0#32
  let v3573 : Index := Scalar.indexCast c0_i32_2078
  let c3_i32_2079 : BitVec 32 := 3#32
  let v3574 : Index := Scalar.indexCast c3_i32_2079
  let c0_i32_475 : BitVec 32 := 0#32
  let c1_i32_477 : BitVec 32 := 1#32
  let arg15 : BitVec 32 := Scf.iv c0_i32_475 c1_i32_477 k0_t4
  let v3575 : Index := Scalar.indexCast arg15
  let c576_2080 : Index := 576#32
  ![0, 3, v3575.toNat, 576]
def k0_off1712 (k0_t4 : Fin k0_t4_loop.trips) : Fin 4 → Nat :=
  let c2_i32_2081 : BitVec 32 := 2#32
  let v3579 : Index := Scalar.indexCast c2_i32_2081
  let c3_i32_2082 : BitVec 32 := 3#32
  let v3580 : Index := Scalar.indexCast c3_i32_2082
  let c0_i32_475 : BitVec 32 := 0#32
  let c1_i32_477 : BitVec 32 := 1#32
  let arg15 : BitVec 32 := Scf.iv c0_i32_475 c1_i32_477 k0_t4
  let v3581 : Index := Scalar.indexCast arg15
  let c592_2083 : Index := 592#32
  ![2, 3, v3581.toNat, 592]
def k0_off1713 (k0_t4 : Fin k0_t4_loop.trips) : Fin 4 → Nat :=
  let c0_i32_2084 : BitVec 32 := 0#32
  let v3585 : Index := Scalar.indexCast c0_i32_2084
  let c3_i32_2085 : BitVec 32 := 3#32
  let v3586 : Index := Scalar.indexCast c3_i32_2085
  let c0_i32_475 : BitVec 32 := 0#32
  let c1_i32_477 : BitVec 32 := 1#32
  let arg15 : BitVec 32 := Scf.iv c0_i32_475 c1_i32_477 k0_t4
  let v3587 : Index := Scalar.indexCast arg15
  let c592_2086 : Index := 592#32
  ![0, 3, v3587.toNat, 592]
def k0_off1714 (k0_t4 : Fin k0_t4_loop.trips) : Fin 4 → Nat :=
  let c2_i32_2087 : BitVec 32 := 2#32
  let v3591 : Index := Scalar.indexCast c2_i32_2087
  let c3_i32_2088 : BitVec 32 := 3#32
  let v3592 : Index := Scalar.indexCast c3_i32_2088
  let c0_i32_475 : BitVec 32 := 0#32
  let c1_i32_477 : BitVec 32 := 1#32
  let arg15 : BitVec 32 := Scf.iv c0_i32_475 c1_i32_477 k0_t4
  let v3593 : Index := Scalar.indexCast arg15
  let c608_2089 : Index := 608#32
  ![2, 3, v3593.toNat, 608]
def k0_off1715 (k0_t4 : Fin k0_t4_loop.trips) : Fin 4 → Nat :=
  let c0_i32_2090 : BitVec 32 := 0#32
  let v3597 : Index := Scalar.indexCast c0_i32_2090
  let c3_i32_2091 : BitVec 32 := 3#32
  let v3598 : Index := Scalar.indexCast c3_i32_2091
  let c0_i32_475 : BitVec 32 := 0#32
  let c1_i32_477 : BitVec 32 := 1#32
  let arg15 : BitVec 32 := Scf.iv c0_i32_475 c1_i32_477 k0_t4
  let v3599 : Index := Scalar.indexCast arg15
  let c608_2092 : Index := 608#32
  ![0, 3, v3599.toNat, 608]
def k0_off1716 (k0_t4 : Fin k0_t4_loop.trips) : Fin 4 → Nat :=
  let c2_i32_2093 : BitVec 32 := 2#32
  let v3603 : Index := Scalar.indexCast c2_i32_2093
  let c3_i32_2094 : BitVec 32 := 3#32
  let v3604 : Index := Scalar.indexCast c3_i32_2094
  let c0_i32_475 : BitVec 32 := 0#32
  let c1_i32_477 : BitVec 32 := 1#32
  let arg15 : BitVec 32 := Scf.iv c0_i32_475 c1_i32_477 k0_t4
  let v3605 : Index := Scalar.indexCast arg15
  let c624_2095 : Index := 624#32
  ![2, 3, v3605.toNat, 624]
def k0_off1717 (k0_t4 : Fin k0_t4_loop.trips) : Fin 4 → Nat :=
  let c0_i32_2096 : BitVec 32 := 0#32
  let v3609 : Index := Scalar.indexCast c0_i32_2096
  let c3_i32_2097 : BitVec 32 := 3#32
  let v3610 : Index := Scalar.indexCast c3_i32_2097
  let c0_i32_475 : BitVec 32 := 0#32
  let c1_i32_477 : BitVec 32 := 1#32
  let arg15 : BitVec 32 := Scf.iv c0_i32_475 c1_i32_477 k0_t4
  let v3611 : Index := Scalar.indexCast arg15
  let c624_2098 : Index := 624#32
  ![0, 3, v3611.toNat, 624]
def k0_off1718 (k0_t4 : Fin k0_t4_loop.trips) : Fin 4 → Nat :=
  let c2_i32_2099 : BitVec 32 := 2#32
  let v3615 : Index := Scalar.indexCast c2_i32_2099
  let c3_i32_2100 : BitVec 32 := 3#32
  let v3616 : Index := Scalar.indexCast c3_i32_2100
  let c0_i32_475 : BitVec 32 := 0#32
  let c1_i32_477 : BitVec 32 := 1#32
  let arg15 : BitVec 32 := Scf.iv c0_i32_475 c1_i32_477 k0_t4
  let v3617 : Index := Scalar.indexCast arg15
  let c640_2101 : Index := 640#32
  ![2, 3, v3617.toNat, 640]
def k0_off1719 (k0_t4 : Fin k0_t4_loop.trips) : Fin 4 → Nat :=
  let c0_i32_2102 : BitVec 32 := 0#32
  let v3621 : Index := Scalar.indexCast c0_i32_2102
  let c3_i32_2103 : BitVec 32 := 3#32
  let v3622 : Index := Scalar.indexCast c3_i32_2103
  let c0_i32_475 : BitVec 32 := 0#32
  let c1_i32_477 : BitVec 32 := 1#32
  let arg15 : BitVec 32 := Scf.iv c0_i32_475 c1_i32_477 k0_t4
  let v3623 : Index := Scalar.indexCast arg15
  let c640_2104 : Index := 640#32
  ![0, 3, v3623.toNat, 640]
def k0_off1720 (k0_t4 : Fin k0_t4_loop.trips) : Fin 4 → Nat :=
  let c2_i32_2105 : BitVec 32 := 2#32
  let v3627 : Index := Scalar.indexCast c2_i32_2105
  let c3_i32_2106 : BitVec 32 := 3#32
  let v3628 : Index := Scalar.indexCast c3_i32_2106
  let c0_i32_475 : BitVec 32 := 0#32
  let c1_i32_477 : BitVec 32 := 1#32
  let arg15 : BitVec 32 := Scf.iv c0_i32_475 c1_i32_477 k0_t4
  let v3629 : Index := Scalar.indexCast arg15
  let c656_2107 : Index := 656#32
  ![2, 3, v3629.toNat, 656]
def k0_off1721 (k0_t4 : Fin k0_t4_loop.trips) : Fin 4 → Nat :=
  let c0_i32_2108 : BitVec 32 := 0#32
  let v3633 : Index := Scalar.indexCast c0_i32_2108
  let c3_i32_2109 : BitVec 32 := 3#32
  let v3634 : Index := Scalar.indexCast c3_i32_2109
  let c0_i32_475 : BitVec 32 := 0#32
  let c1_i32_477 : BitVec 32 := 1#32
  let arg15 : BitVec 32 := Scf.iv c0_i32_475 c1_i32_477 k0_t4
  let v3635 : Index := Scalar.indexCast arg15
  let c656_2110 : Index := 656#32
  ![0, 3, v3635.toNat, 656]
def k0_off1722 (k0_t4 : Fin k0_t4_loop.trips) : Fin 4 → Nat :=
  let c2_i32_2111 : BitVec 32 := 2#32
  let v3639 : Index := Scalar.indexCast c2_i32_2111
  let c3_i32_2112 : BitVec 32 := 3#32
  let v3640 : Index := Scalar.indexCast c3_i32_2112
  let c0_i32_475 : BitVec 32 := 0#32
  let c1_i32_477 : BitVec 32 := 1#32
  let arg15 : BitVec 32 := Scf.iv c0_i32_475 c1_i32_477 k0_t4
  let v3641 : Index := Scalar.indexCast arg15
  let c672_2113 : Index := 672#32
  ![2, 3, v3641.toNat, 672]
def k0_off1723 (k0_t4 : Fin k0_t4_loop.trips) : Fin 4 → Nat :=
  let c0_i32_2114 : BitVec 32 := 0#32
  let v3645 : Index := Scalar.indexCast c0_i32_2114
  let c3_i32_2115 : BitVec 32 := 3#32
  let v3646 : Index := Scalar.indexCast c3_i32_2115
  let c0_i32_475 : BitVec 32 := 0#32
  let c1_i32_477 : BitVec 32 := 1#32
  let arg15 : BitVec 32 := Scf.iv c0_i32_475 c1_i32_477 k0_t4
  let v3647 : Index := Scalar.indexCast arg15
  let c672_2116 : Index := 672#32
  ![0, 3, v3647.toNat, 672]
def k0_off1724 (k0_t4 : Fin k0_t4_loop.trips) : Fin 4 → Nat :=
  let c2_i32_2117 : BitVec 32 := 2#32
  let v3651 : Index := Scalar.indexCast c2_i32_2117
  let c3_i32_2118 : BitVec 32 := 3#32
  let v3652 : Index := Scalar.indexCast c3_i32_2118
  let c0_i32_475 : BitVec 32 := 0#32
  let c1_i32_477 : BitVec 32 := 1#32
  let arg15 : BitVec 32 := Scf.iv c0_i32_475 c1_i32_477 k0_t4
  let v3653 : Index := Scalar.indexCast arg15
  let c688_2119 : Index := 688#32
  ![2, 3, v3653.toNat, 688]
def k0_off1725 (k0_t4 : Fin k0_t4_loop.trips) : Fin 4 → Nat :=
  let c0_i32_2120 : BitVec 32 := 0#32
  let v3657 : Index := Scalar.indexCast c0_i32_2120
  let c3_i32_2121 : BitVec 32 := 3#32
  let v3658 : Index := Scalar.indexCast c3_i32_2121
  let c0_i32_475 : BitVec 32 := 0#32
  let c1_i32_477 : BitVec 32 := 1#32
  let arg15 : BitVec 32 := Scf.iv c0_i32_475 c1_i32_477 k0_t4
  let v3659 : Index := Scalar.indexCast arg15
  let c688_2122 : Index := 688#32
  ![0, 3, v3659.toNat, 688]
def k0_off1726 (k0_t4 : Fin k0_t4_loop.trips) : Fin 4 → Nat :=
  let c2_i32_2123 : BitVec 32 := 2#32
  let v3663 : Index := Scalar.indexCast c2_i32_2123
  let c3_i32_2124 : BitVec 32 := 3#32
  let v3664 : Index := Scalar.indexCast c3_i32_2124
  let c0_i32_475 : BitVec 32 := 0#32
  let c1_i32_477 : BitVec 32 := 1#32
  let arg15 : BitVec 32 := Scf.iv c0_i32_475 c1_i32_477 k0_t4
  let v3665 : Index := Scalar.indexCast arg15
  let c704_2125 : Index := 704#32
  ![2, 3, v3665.toNat, 704]
def k0_off1727 (k0_t4 : Fin k0_t4_loop.trips) : Fin 4 → Nat :=
  let c0_i32_2126 : BitVec 32 := 0#32
  let v3669 : Index := Scalar.indexCast c0_i32_2126
  let c3_i32_2127 : BitVec 32 := 3#32
  let v3670 : Index := Scalar.indexCast c3_i32_2127
  let c0_i32_475 : BitVec 32 := 0#32
  let c1_i32_477 : BitVec 32 := 1#32
  let arg15 : BitVec 32 := Scf.iv c0_i32_475 c1_i32_477 k0_t4
  let v3671 : Index := Scalar.indexCast arg15
  let c704_2128 : Index := 704#32
  ![0, 3, v3671.toNat, 704]
def k0_off1728 (k0_t4 : Fin k0_t4_loop.trips) : Fin 4 → Nat :=
  let c2_i32_2129 : BitVec 32 := 2#32
  let v3675 : Index := Scalar.indexCast c2_i32_2129
  let c3_i32_2130 : BitVec 32 := 3#32
  let v3676 : Index := Scalar.indexCast c3_i32_2130
  let c0_i32_475 : BitVec 32 := 0#32
  let c1_i32_477 : BitVec 32 := 1#32
  let arg15 : BitVec 32 := Scf.iv c0_i32_475 c1_i32_477 k0_t4
  let v3677 : Index := Scalar.indexCast arg15
  let c720_2131 : Index := 720#32
  ![2, 3, v3677.toNat, 720]
def k0_off1729 (k0_t4 : Fin k0_t4_loop.trips) : Fin 4 → Nat :=
  let c0_i32_2132 : BitVec 32 := 0#32
  let v3681 : Index := Scalar.indexCast c0_i32_2132
  let c3_i32_2133 : BitVec 32 := 3#32
  let v3682 : Index := Scalar.indexCast c3_i32_2133
  let c0_i32_475 : BitVec 32 := 0#32
  let c1_i32_477 : BitVec 32 := 1#32
  let arg15 : BitVec 32 := Scf.iv c0_i32_475 c1_i32_477 k0_t4
  let v3683 : Index := Scalar.indexCast arg15
  let c720_2134 : Index := 720#32
  ![0, 3, v3683.toNat, 720]
def k0_off1730 (k0_t4 : Fin k0_t4_loop.trips) : Fin 4 → Nat :=
  let c2_i32_2135 : BitVec 32 := 2#32
  let v3687 : Index := Scalar.indexCast c2_i32_2135
  let c3_i32_2136 : BitVec 32 := 3#32
  let v3688 : Index := Scalar.indexCast c3_i32_2136
  let c0_i32_475 : BitVec 32 := 0#32
  let c1_i32_477 : BitVec 32 := 1#32
  let arg15 : BitVec 32 := Scf.iv c0_i32_475 c1_i32_477 k0_t4
  let v3689 : Index := Scalar.indexCast arg15
  let c736_2137 : Index := 736#32
  ![2, 3, v3689.toNat, 736]
def k0_off1731 (k0_t4 : Fin k0_t4_loop.trips) : Fin 4 → Nat :=
  let c0_i32_2138 : BitVec 32 := 0#32
  let v3693 : Index := Scalar.indexCast c0_i32_2138
  let c3_i32_2139 : BitVec 32 := 3#32
  let v3694 : Index := Scalar.indexCast c3_i32_2139
  let c0_i32_475 : BitVec 32 := 0#32
  let c1_i32_477 : BitVec 32 := 1#32
  let arg15 : BitVec 32 := Scf.iv c0_i32_475 c1_i32_477 k0_t4
  let v3695 : Index := Scalar.indexCast arg15
  let c736_2140 : Index := 736#32
  ![0, 3, v3695.toNat, 736]
def k0_off1732 (k0_t4 : Fin k0_t4_loop.trips) : Fin 4 → Nat :=
  let c2_i32_2141 : BitVec 32 := 2#32
  let v3699 : Index := Scalar.indexCast c2_i32_2141
  let c3_i32_2142 : BitVec 32 := 3#32
  let v3700 : Index := Scalar.indexCast c3_i32_2142
  let c0_i32_475 : BitVec 32 := 0#32
  let c1_i32_477 : BitVec 32 := 1#32
  let arg15 : BitVec 32 := Scf.iv c0_i32_475 c1_i32_477 k0_t4
  let v3701 : Index := Scalar.indexCast arg15
  let c752_2143 : Index := 752#32
  ![2, 3, v3701.toNat, 752]
def k0_off1733 (k0_t4 : Fin k0_t4_loop.trips) : Fin 4 → Nat :=
  let c0_i32_2144 : BitVec 32 := 0#32
  let v3705 : Index := Scalar.indexCast c0_i32_2144
  let c3_i32_2145 : BitVec 32 := 3#32
  let v3706 : Index := Scalar.indexCast c3_i32_2145
  let c0_i32_475 : BitVec 32 := 0#32
  let c1_i32_477 : BitVec 32 := 1#32
  let arg15 : BitVec 32 := Scf.iv c0_i32_475 c1_i32_477 k0_t4
  let v3707 : Index := Scalar.indexCast arg15
  let c752_2146 : Index := 752#32
  ![0, 3, v3707.toNat, 752]
def k0_off1734 (k0_t4 : Fin k0_t4_loop.trips) : Fin 4 → Nat :=
  let c2_i32_2147 : BitVec 32 := 2#32
  let v3711 : Index := Scalar.indexCast c2_i32_2147
  let c3_i32_2148 : BitVec 32 := 3#32
  let v3712 : Index := Scalar.indexCast c3_i32_2148
  let c0_i32_475 : BitVec 32 := 0#32
  let c1_i32_477 : BitVec 32 := 1#32
  let arg15 : BitVec 32 := Scf.iv c0_i32_475 c1_i32_477 k0_t4
  let v3713 : Index := Scalar.indexCast arg15
  let c768_2149 : Index := 768#32
  ![2, 3, v3713.toNat, 768]
def k0_off1735 (k0_t4 : Fin k0_t4_loop.trips) : Fin 4 → Nat :=
  let c0_i32_2150 : BitVec 32 := 0#32
  let v3717 : Index := Scalar.indexCast c0_i32_2150
  let c3_i32_2151 : BitVec 32 := 3#32
  let v3718 : Index := Scalar.indexCast c3_i32_2151
  let c0_i32_475 : BitVec 32 := 0#32
  let c1_i32_477 : BitVec 32 := 1#32
  let arg15 : BitVec 32 := Scf.iv c0_i32_475 c1_i32_477 k0_t4
  let v3719 : Index := Scalar.indexCast arg15
  let c768_2152 : Index := 768#32
  ![0, 3, v3719.toNat, 768]
def k0_off1736 (k0_t4 : Fin k0_t4_loop.trips) : Fin 4 → Nat :=
  let c2_i32_2153 : BitVec 32 := 2#32
  let v3723 : Index := Scalar.indexCast c2_i32_2153
  let c3_i32_2154 : BitVec 32 := 3#32
  let v3724 : Index := Scalar.indexCast c3_i32_2154
  let c0_i32_475 : BitVec 32 := 0#32
  let c1_i32_477 : BitVec 32 := 1#32
  let arg15 : BitVec 32 := Scf.iv c0_i32_475 c1_i32_477 k0_t4
  let v3725 : Index := Scalar.indexCast arg15
  let c784_2155 : Index := 784#32
  ![2, 3, v3725.toNat, 784]
def k0_off1737 (k0_t4 : Fin k0_t4_loop.trips) : Fin 4 → Nat :=
  let c0_i32_2156 : BitVec 32 := 0#32
  let v3729 : Index := Scalar.indexCast c0_i32_2156
  let c3_i32_2157 : BitVec 32 := 3#32
  let v3730 : Index := Scalar.indexCast c3_i32_2157
  let c0_i32_475 : BitVec 32 := 0#32
  let c1_i32_477 : BitVec 32 := 1#32
  let arg15 : BitVec 32 := Scf.iv c0_i32_475 c1_i32_477 k0_t4
  let v3731 : Index := Scalar.indexCast arg15
  let c784_2158 : Index := 784#32
  ![0, 3, v3731.toNat, 784]
def k0_off1738 (k0_t4 : Fin k0_t4_loop.trips) : Fin 4 → Nat :=
  let c2_i32_2159 : BitVec 32 := 2#32
  let v3735 : Index := Scalar.indexCast c2_i32_2159
  let c3_i32_2160 : BitVec 32 := 3#32
  let v3736 : Index := Scalar.indexCast c3_i32_2160
  let c0_i32_475 : BitVec 32 := 0#32
  let c1_i32_477 : BitVec 32 := 1#32
  let arg15 : BitVec 32 := Scf.iv c0_i32_475 c1_i32_477 k0_t4
  let v3737 : Index := Scalar.indexCast arg15
  let c800_2161 : Index := 800#32
  ![2, 3, v3737.toNat, 800]
def k0_off1739 (k0_t4 : Fin k0_t4_loop.trips) : Fin 4 → Nat :=
  let c0_i32_2162 : BitVec 32 := 0#32
  let v3741 : Index := Scalar.indexCast c0_i32_2162
  let c3_i32_2163 : BitVec 32 := 3#32
  let v3742 : Index := Scalar.indexCast c3_i32_2163
  let c0_i32_475 : BitVec 32 := 0#32
  let c1_i32_477 : BitVec 32 := 1#32
  let arg15 : BitVec 32 := Scf.iv c0_i32_475 c1_i32_477 k0_t4
  let v3743 : Index := Scalar.indexCast arg15
  let c800_2164 : Index := 800#32
  ![0, 3, v3743.toNat, 800]
def k0_off1740 (k0_t4 : Fin k0_t4_loop.trips) : Fin 4 → Nat :=
  let c2_i32_2165 : BitVec 32 := 2#32
  let v3747 : Index := Scalar.indexCast c2_i32_2165
  let c3_i32_2166 : BitVec 32 := 3#32
  let v3748 : Index := Scalar.indexCast c3_i32_2166
  let c0_i32_475 : BitVec 32 := 0#32
  let c1_i32_477 : BitVec 32 := 1#32
  let arg15 : BitVec 32 := Scf.iv c0_i32_475 c1_i32_477 k0_t4
  let v3749 : Index := Scalar.indexCast arg15
  let c816_2167 : Index := 816#32
  ![2, 3, v3749.toNat, 816]
def k0_off1741 (k0_t4 : Fin k0_t4_loop.trips) : Fin 4 → Nat :=
  let c0_i32_2168 : BitVec 32 := 0#32
  let v3753 : Index := Scalar.indexCast c0_i32_2168
  let c3_i32_2169 : BitVec 32 := 3#32
  let v3754 : Index := Scalar.indexCast c3_i32_2169
  let c0_i32_475 : BitVec 32 := 0#32
  let c1_i32_477 : BitVec 32 := 1#32
  let arg15 : BitVec 32 := Scf.iv c0_i32_475 c1_i32_477 k0_t4
  let v3755 : Index := Scalar.indexCast arg15
  let c816_2170 : Index := 816#32
  ![0, 3, v3755.toNat, 816]
def k0_off1742 (k0_t4 : Fin k0_t4_loop.trips) : Fin 4 → Nat :=
  let c2_i32_2171 : BitVec 32 := 2#32
  let v3759 : Index := Scalar.indexCast c2_i32_2171
  let c3_i32_2172 : BitVec 32 := 3#32
  let v3760 : Index := Scalar.indexCast c3_i32_2172
  let c0_i32_475 : BitVec 32 := 0#32
  let c1_i32_477 : BitVec 32 := 1#32
  let arg15 : BitVec 32 := Scf.iv c0_i32_475 c1_i32_477 k0_t4
  let v3761 : Index := Scalar.indexCast arg15
  let c832_2173 : Index := 832#32
  ![2, 3, v3761.toNat, 832]
def k0_off1743 (k0_t4 : Fin k0_t4_loop.trips) : Fin 4 → Nat :=
  let c0_i32_2174 : BitVec 32 := 0#32
  let v3765 : Index := Scalar.indexCast c0_i32_2174
  let c3_i32_2175 : BitVec 32 := 3#32
  let v3766 : Index := Scalar.indexCast c3_i32_2175
  let c0_i32_475 : BitVec 32 := 0#32
  let c1_i32_477 : BitVec 32 := 1#32
  let arg15 : BitVec 32 := Scf.iv c0_i32_475 c1_i32_477 k0_t4
  let v3767 : Index := Scalar.indexCast arg15
  let c832_2176 : Index := 832#32
  ![0, 3, v3767.toNat, 832]
def k0_off1744 (k0_t4 : Fin k0_t4_loop.trips) : Fin 4 → Nat :=
  let c2_i32_2177 : BitVec 32 := 2#32
  let v3771 : Index := Scalar.indexCast c2_i32_2177
  let c3_i32_2178 : BitVec 32 := 3#32
  let v3772 : Index := Scalar.indexCast c3_i32_2178
  let c0_i32_475 : BitVec 32 := 0#32
  let c1_i32_477 : BitVec 32 := 1#32
  let arg15 : BitVec 32 := Scf.iv c0_i32_475 c1_i32_477 k0_t4
  let v3773 : Index := Scalar.indexCast arg15
  let c848_2179 : Index := 848#32
  ![2, 3, v3773.toNat, 848]
def k0_off1745 (k0_t4 : Fin k0_t4_loop.trips) : Fin 4 → Nat :=
  let c0_i32_2180 : BitVec 32 := 0#32
  let v3777 : Index := Scalar.indexCast c0_i32_2180
  let c3_i32_2181 : BitVec 32 := 3#32
  let v3778 : Index := Scalar.indexCast c3_i32_2181
  let c0_i32_475 : BitVec 32 := 0#32
  let c1_i32_477 : BitVec 32 := 1#32
  let arg15 : BitVec 32 := Scf.iv c0_i32_475 c1_i32_477 k0_t4
  let v3779 : Index := Scalar.indexCast arg15
  let c848_2182 : Index := 848#32
  ![0, 3, v3779.toNat, 848]
def k0_off1746 (k0_t4 : Fin k0_t4_loop.trips) : Fin 4 → Nat :=
  let c2_i32_2183 : BitVec 32 := 2#32
  let v3783 : Index := Scalar.indexCast c2_i32_2183
  let c3_i32_2184 : BitVec 32 := 3#32
  let v3784 : Index := Scalar.indexCast c3_i32_2184
  let c0_i32_475 : BitVec 32 := 0#32
  let c1_i32_477 : BitVec 32 := 1#32
  let arg15 : BitVec 32 := Scf.iv c0_i32_475 c1_i32_477 k0_t4
  let v3785 : Index := Scalar.indexCast arg15
  let c864_2185 : Index := 864#32
  ![2, 3, v3785.toNat, 864]
def k0_off1747 (k0_t4 : Fin k0_t4_loop.trips) : Fin 4 → Nat :=
  let c0_i32_2186 : BitVec 32 := 0#32
  let v3789 : Index := Scalar.indexCast c0_i32_2186
  let c3_i32_2187 : BitVec 32 := 3#32
  let v3790 : Index := Scalar.indexCast c3_i32_2187
  let c0_i32_475 : BitVec 32 := 0#32
  let c1_i32_477 : BitVec 32 := 1#32
  let arg15 : BitVec 32 := Scf.iv c0_i32_475 c1_i32_477 k0_t4
  let v3791 : Index := Scalar.indexCast arg15
  let c864_2188 : Index := 864#32
  ![0, 3, v3791.toNat, 864]
def k0_off1748 (k0_t4 : Fin k0_t4_loop.trips) : Fin 4 → Nat :=
  let c2_i32_2189 : BitVec 32 := 2#32
  let v3795 : Index := Scalar.indexCast c2_i32_2189
  let c3_i32_2190 : BitVec 32 := 3#32
  let v3796 : Index := Scalar.indexCast c3_i32_2190
  let c0_i32_475 : BitVec 32 := 0#32
  let c1_i32_477 : BitVec 32 := 1#32
  let arg15 : BitVec 32 := Scf.iv c0_i32_475 c1_i32_477 k0_t4
  let v3797 : Index := Scalar.indexCast arg15
  let c880_2191 : Index := 880#32
  ![2, 3, v3797.toNat, 880]
def k0_off1749 (k0_t4 : Fin k0_t4_loop.trips) : Fin 4 → Nat :=
  let c0_i32_2192 : BitVec 32 := 0#32
  let v3801 : Index := Scalar.indexCast c0_i32_2192
  let c3_i32_2193 : BitVec 32 := 3#32
  let v3802 : Index := Scalar.indexCast c3_i32_2193
  let c0_i32_475 : BitVec 32 := 0#32
  let c1_i32_477 : BitVec 32 := 1#32
  let arg15 : BitVec 32 := Scf.iv c0_i32_475 c1_i32_477 k0_t4
  let v3803 : Index := Scalar.indexCast arg15
  let c880_2194 : Index := 880#32
  ![0, 3, v3803.toNat, 880]
def k0_off1750 (k0_t4 : Fin k0_t4_loop.trips) : Fin 4 → Nat :=
  let c2_i32_2195 : BitVec 32 := 2#32
  let v3807 : Index := Scalar.indexCast c2_i32_2195
  let c3_i32_2196 : BitVec 32 := 3#32
  let v3808 : Index := Scalar.indexCast c3_i32_2196
  let c0_i32_475 : BitVec 32 := 0#32
  let c1_i32_477 : BitVec 32 := 1#32
  let arg15 : BitVec 32 := Scf.iv c0_i32_475 c1_i32_477 k0_t4
  let v3809 : Index := Scalar.indexCast arg15
  let c896_2197 : Index := 896#32
  ![2, 3, v3809.toNat, 896]
def k0_off1751 (k0_t4 : Fin k0_t4_loop.trips) : Fin 4 → Nat :=
  let c0_i32_2198 : BitVec 32 := 0#32
  let v3813 : Index := Scalar.indexCast c0_i32_2198
  let c3_i32_2199 : BitVec 32 := 3#32
  let v3814 : Index := Scalar.indexCast c3_i32_2199
  let c0_i32_475 : BitVec 32 := 0#32
  let c1_i32_477 : BitVec 32 := 1#32
  let arg15 : BitVec 32 := Scf.iv c0_i32_475 c1_i32_477 k0_t4
  let v3815 : Index := Scalar.indexCast arg15
  let c896_2200 : Index := 896#32
  ![0, 3, v3815.toNat, 896]
def k0_off1752 (k0_t4 : Fin k0_t4_loop.trips) : Fin 4 → Nat :=
  let c2_i32_2201 : BitVec 32 := 2#32
  let v3819 : Index := Scalar.indexCast c2_i32_2201
  let c3_i32_2202 : BitVec 32 := 3#32
  let v3820 : Index := Scalar.indexCast c3_i32_2202
  let c0_i32_475 : BitVec 32 := 0#32
  let c1_i32_477 : BitVec 32 := 1#32
  let arg15 : BitVec 32 := Scf.iv c0_i32_475 c1_i32_477 k0_t4
  let v3821 : Index := Scalar.indexCast arg15
  let c912_2203 : Index := 912#32
  ![2, 3, v3821.toNat, 912]
def k0_off1753 (k0_t4 : Fin k0_t4_loop.trips) : Fin 4 → Nat :=
  let c0_i32_2204 : BitVec 32 := 0#32
  let v3825 : Index := Scalar.indexCast c0_i32_2204
  let c3_i32_2205 : BitVec 32 := 3#32
  let v3826 : Index := Scalar.indexCast c3_i32_2205
  let c0_i32_475 : BitVec 32 := 0#32
  let c1_i32_477 : BitVec 32 := 1#32
  let arg15 : BitVec 32 := Scf.iv c0_i32_475 c1_i32_477 k0_t4
  let v3827 : Index := Scalar.indexCast arg15
  let c912_2206 : Index := 912#32
  ![0, 3, v3827.toNat, 912]
def k0_off1754 (k0_t4 : Fin k0_t4_loop.trips) : Fin 4 → Nat :=
  let c2_i32_2207 : BitVec 32 := 2#32
  let v3831 : Index := Scalar.indexCast c2_i32_2207
  let c3_i32_2208 : BitVec 32 := 3#32
  let v3832 : Index := Scalar.indexCast c3_i32_2208
  let c0_i32_475 : BitVec 32 := 0#32
  let c1_i32_477 : BitVec 32 := 1#32
  let arg15 : BitVec 32 := Scf.iv c0_i32_475 c1_i32_477 k0_t4
  let v3833 : Index := Scalar.indexCast arg15
  let c928_2209 : Index := 928#32
  ![2, 3, v3833.toNat, 928]
def k0_off1755 (k0_t4 : Fin k0_t4_loop.trips) : Fin 4 → Nat :=
  let c0_i32_2210 : BitVec 32 := 0#32
  let v3837 : Index := Scalar.indexCast c0_i32_2210
  let c3_i32_2211 : BitVec 32 := 3#32
  let v3838 : Index := Scalar.indexCast c3_i32_2211
  let c0_i32_475 : BitVec 32 := 0#32
  let c1_i32_477 : BitVec 32 := 1#32
  let arg15 : BitVec 32 := Scf.iv c0_i32_475 c1_i32_477 k0_t4
  let v3839 : Index := Scalar.indexCast arg15
  let c928_2212 : Index := 928#32
  ![0, 3, v3839.toNat, 928]
def k0_off1756 (k0_t4 : Fin k0_t4_loop.trips) : Fin 4 → Nat :=
  let c2_i32_2213 : BitVec 32 := 2#32
  let v3843 : Index := Scalar.indexCast c2_i32_2213
  let c3_i32_2214 : BitVec 32 := 3#32
  let v3844 : Index := Scalar.indexCast c3_i32_2214
  let c0_i32_475 : BitVec 32 := 0#32
  let c1_i32_477 : BitVec 32 := 1#32
  let arg15 : BitVec 32 := Scf.iv c0_i32_475 c1_i32_477 k0_t4
  let v3845 : Index := Scalar.indexCast arg15
  let c944_2215 : Index := 944#32
  ![2, 3, v3845.toNat, 944]
def k0_off1757 (k0_t4 : Fin k0_t4_loop.trips) : Fin 4 → Nat :=
  let c0_i32_2216 : BitVec 32 := 0#32
  let v3849 : Index := Scalar.indexCast c0_i32_2216
  let c3_i32_2217 : BitVec 32 := 3#32
  let v3850 : Index := Scalar.indexCast c3_i32_2217
  let c0_i32_475 : BitVec 32 := 0#32
  let c1_i32_477 : BitVec 32 := 1#32
  let arg15 : BitVec 32 := Scf.iv c0_i32_475 c1_i32_477 k0_t4
  let v3851 : Index := Scalar.indexCast arg15
  let c944_2218 : Index := 944#32
  ![0, 3, v3851.toNat, 944]
def k0_off1758 (k0_t4 : Fin k0_t4_loop.trips) : Fin 4 → Nat :=
  let c2_i32_2219 : BitVec 32 := 2#32
  let v3855 : Index := Scalar.indexCast c2_i32_2219
  let c3_i32_2220 : BitVec 32 := 3#32
  let v3856 : Index := Scalar.indexCast c3_i32_2220
  let c0_i32_475 : BitVec 32 := 0#32
  let c1_i32_477 : BitVec 32 := 1#32
  let arg15 : BitVec 32 := Scf.iv c0_i32_475 c1_i32_477 k0_t4
  let v3857 : Index := Scalar.indexCast arg15
  let c960_2221 : Index := 960#32
  ![2, 3, v3857.toNat, 960]
def k0_off1759 (k0_t4 : Fin k0_t4_loop.trips) : Fin 4 → Nat :=
  let c0_i32_2222 : BitVec 32 := 0#32
  let v3861 : Index := Scalar.indexCast c0_i32_2222
  let c3_i32_2223 : BitVec 32 := 3#32
  let v3862 : Index := Scalar.indexCast c3_i32_2223
  let c0_i32_475 : BitVec 32 := 0#32
  let c1_i32_477 : BitVec 32 := 1#32
  let arg15 : BitVec 32 := Scf.iv c0_i32_475 c1_i32_477 k0_t4
  let v3863 : Index := Scalar.indexCast arg15
  let c960_2224 : Index := 960#32
  ![0, 3, v3863.toNat, 960]
def k0_off1760 (k0_t4 : Fin k0_t4_loop.trips) : Fin 4 → Nat :=
  let c2_i32_2225 : BitVec 32 := 2#32
  let v3867 : Index := Scalar.indexCast c2_i32_2225
  let c3_i32_2226 : BitVec 32 := 3#32
  let v3868 : Index := Scalar.indexCast c3_i32_2226
  let c0_i32_475 : BitVec 32 := 0#32
  let c1_i32_477 : BitVec 32 := 1#32
  let arg15 : BitVec 32 := Scf.iv c0_i32_475 c1_i32_477 k0_t4
  let v3869 : Index := Scalar.indexCast arg15
  let c976_2227 : Index := 976#32
  ![2, 3, v3869.toNat, 976]
def k0_off1761 (k0_t4 : Fin k0_t4_loop.trips) : Fin 4 → Nat :=
  let c0_i32_2228 : BitVec 32 := 0#32
  let v3873 : Index := Scalar.indexCast c0_i32_2228
  let c3_i32_2229 : BitVec 32 := 3#32
  let v3874 : Index := Scalar.indexCast c3_i32_2229
  let c0_i32_475 : BitVec 32 := 0#32
  let c1_i32_477 : BitVec 32 := 1#32
  let arg15 : BitVec 32 := Scf.iv c0_i32_475 c1_i32_477 k0_t4
  let v3875 : Index := Scalar.indexCast arg15
  let c976_2230 : Index := 976#32
  ![0, 3, v3875.toNat, 976]
def k0_off1762 (k0_t4 : Fin k0_t4_loop.trips) : Fin 4 → Nat :=
  let c2_i32_2231 : BitVec 32 := 2#32
  let v3879 : Index := Scalar.indexCast c2_i32_2231
  let c3_i32_2232 : BitVec 32 := 3#32
  let v3880 : Index := Scalar.indexCast c3_i32_2232
  let c0_i32_475 : BitVec 32 := 0#32
  let c1_i32_477 : BitVec 32 := 1#32
  let arg15 : BitVec 32 := Scf.iv c0_i32_475 c1_i32_477 k0_t4
  let v3881 : Index := Scalar.indexCast arg15
  let c992_2233 : Index := 992#32
  ![2, 3, v3881.toNat, 992]
def k0_off1763 (k0_t4 : Fin k0_t4_loop.trips) : Fin 4 → Nat :=
  let c0_i32_2234 : BitVec 32 := 0#32
  let v3885 : Index := Scalar.indexCast c0_i32_2234
  let c3_i32_2235 : BitVec 32 := 3#32
  let v3886 : Index := Scalar.indexCast c3_i32_2235
  let c0_i32_475 : BitVec 32 := 0#32
  let c1_i32_477 : BitVec 32 := 1#32
  let arg15 : BitVec 32 := Scf.iv c0_i32_475 c1_i32_477 k0_t4
  let v3887 : Index := Scalar.indexCast arg15
  let c992_2236 : Index := 992#32
  ![0, 3, v3887.toNat, 992]
def k0_off1764 (k0_t4 : Fin k0_t4_loop.trips) : Fin 4 → Nat :=
  let c2_i32_2237 : BitVec 32 := 2#32
  let v3891 : Index := Scalar.indexCast c2_i32_2237
  let c3_i32_2238 : BitVec 32 := 3#32
  let v3892 : Index := Scalar.indexCast c3_i32_2238
  let c0_i32_475 : BitVec 32 := 0#32
  let c1_i32_477 : BitVec 32 := 1#32
  let arg15 : BitVec 32 := Scf.iv c0_i32_475 c1_i32_477 k0_t4
  let v3893 : Index := Scalar.indexCast arg15
  let c1008_2239 : Index := 1008#32
  ![2, 3, v3893.toNat, 1008]
def k0_off1765 (k0_t4 : Fin k0_t4_loop.trips) : Fin 4 → Nat :=
  let c0_i32_2240 : BitVec 32 := 0#32
  let v3897 : Index := Scalar.indexCast c0_i32_2240
  let c3_i32_2241 : BitVec 32 := 3#32
  let v3898 : Index := Scalar.indexCast c3_i32_2241
  let c0_i32_475 : BitVec 32 := 0#32
  let c1_i32_477 : BitVec 32 := 1#32
  let arg15 : BitVec 32 := Scf.iv c0_i32_475 c1_i32_477 k0_t4
  let v3899 : Index := Scalar.indexCast arg15
  let c1008_2242 : Index := 1008#32
  ![0, 3, v3899.toNat, 1008]
def k0_cond6 (k0_t1 : Fin k0_t1_loop.trips) : BitVec 1 :=
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c32_i32_563 : BitVec 32 := 32#32
  let v505 : BitVec 1 := Scalar.cmpi .slt v504 c32_i32_563
  let v506 : BitVec 32 := Scalar.extui v505
  let c0_i32_564 : BitVec 32 := 0#32
  let v507 : BitVec 1 := Scalar.cmpi .ne v506 c0_i32_564
  v507

def k0_off1766 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c4_i32_643 : BitVec 32 := 4#32
  let v575 : BitVec 32 := Scalar.muli v504 c4_i32_643
  let v576 : BitVec 32 := Scalar.addi v2 v575
  let c0_i32_647 : BitVec 32 := 0#32
  ![v576.toNat, 0]
def k0_off1767 (i : grid0.Coords) (k0_t1 : Fin k0_t1_loop.trips) : Fin 3 → Nat :=
  let c0_i32_651 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c4_i32_643 : BitVec 32 := 4#32
  let v575 : BitVec 32 := Scalar.muli v504 c4_i32_643
  let v576 : BitVec 32 := Scalar.addi v2 v575
  let c0_i32_656 : BitVec 32 := 0#32
  ![0, v576.toNat, 0]
def k0_off1768 (i : grid0.Coords) (k0_t1 : Fin k0_t1_loop.trips) : Fin 3 → Nat :=
  let c1_i32_660 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c4_i32_643 : BitVec 32 := 4#32
  let v575 : BitVec 32 := Scalar.muli v504 c4_i32_643
  let v576 : BitVec 32 := Scalar.addi v2 v575
  let c0_i32_665 : BitVec 32 := 0#32
  ![1, v576.toNat, 0]
def k0_off1769 (i : grid0.Coords) (k0_t1 : Fin k0_t1_loop.trips) : Fin 3 → Nat :=
  let c2_i32_669 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c4_i32_643 : BitVec 32 := 4#32
  let v575 : BitVec 32 := Scalar.muli v504 c4_i32_643
  let v576 : BitVec 32 := Scalar.addi v2 v575
  let c0_i32_674 : BitVec 32 := 0#32
  ![2, v576.toNat, 0]
def k0_off1770 (i : grid0.Coords) (k0_t1 : Fin k0_t1_loop.trips) : Fin 3 → Nat :=
  let c3_i32_678 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_128 : BitVec 32 := 0#32
  let c1_i32_130 : BitVec 32 := 1#32
  let arg14 : BitVec 32 := Scf.iv c0_i32_128 c1_i32_130 k0_t1
  let c4_i32_516 : BitVec 32 := 4#32
  let v463 : BitVec 32 := Scalar.muli arg14 c4_i32_516
  let c3_i32_517 : BitVec 32 := 3#32
  let v464 : BitVec 32 := Scalar.addi v463 c3_i32_517
  let c4_i32_561 : BitVec 32 := 4#32
  let v503 : BitVec 32 := Scalar.addi v464 c4_i32_561
  let c1_i32_562 : BitVec 32 := 1#32
  let v504 : BitVec 32 := Scalar.subi v503 c1_i32_562
  let c4_i32_643 : BitVec 32 := 4#32
  let v575 : BitVec 32 := Scalar.muli v504 c4_i32_643
  let v576 : BitVec 32 := Scalar.addi v2 v575
  let c0_i32_683 : BitVec 32 := 0#32
  ![3, v576.toNat, 0]
@[reducible] def k0_t5_loop : Scf.Loop 32 :=
  let c0_i32_602 : BitVec 32 := 0#32
  let c4_i32_603 : BitVec 32 := 4#32
  let v540 : BitVec 32 := Scalar.addi c0_i32_602 c4_i32_603
  let c1_i32_604 : BitVec 32 := 1#32
  ⟨c0_i32_602, v540, c1_i32_604⟩
def k0_off1771 (k0_t5 : Fin k0_t5_loop.trips) : Fin 3 → Nat :=
  let c3_i32_643 : BitVec 32 := 3#32
  let v575 : Index := Scalar.indexCast c3_i32_643
  let c0_i32_602 : BitVec 32 := 0#32
  let c1_i32_604 : BitVec 32 := 1#32
  let arg15 : BitVec 32 := Scf.iv c0_i32_602 c1_i32_604 k0_t5
  let v576 : Index := Scalar.indexCast arg15
  let c0 : Index := 0#32
  ![3, v576.toNat, 0]
def k0_off1772 (k0_t5 : Fin k0_t5_loop.trips) : Fin 3 → Nat :=
  let c3_i32_644 : BitVec 32 := 3#32
  let v579 : Index := Scalar.indexCast c3_i32_644
  let c0_i32_602 : BitVec 32 := 0#32
  let c1_i32_604 : BitVec 32 := 1#32
  let arg15 : BitVec 32 := Scf.iv c0_i32_602 c1_i32_604 k0_t5
  let v580 : Index := Scalar.indexCast arg15
  let c16 : Index := 16#32
  ![3, v580.toNat, 16]
def k0_off1773 (k0_t5 : Fin k0_t5_loop.trips) : Fin 3 → Nat :=
  let c3_i32_645 : BitVec 32 := 3#32
  let v583 : Index := Scalar.indexCast c3_i32_645
  let c0_i32_602 : BitVec 32 := 0#32
  let c1_i32_604 : BitVec 32 := 1#32
  let arg15 : BitVec 32 := Scf.iv c0_i32_602 c1_i32_604 k0_t5
  let v584 : Index := Scalar.indexCast arg15
  let c32 : Index := 32#32
  ![3, v584.toNat, 32]
def k0_off1774 (k0_t5 : Fin k0_t5_loop.trips) : Fin 3 → Nat :=
  let c3_i32_646 : BitVec 32 := 3#32
  let v587 : Index := Scalar.indexCast c3_i32_646
  let c0_i32_602 : BitVec 32 := 0#32
  let c1_i32_604 : BitVec 32 := 1#32
  let arg15 : BitVec 32 := Scf.iv c0_i32_602 c1_i32_604 k0_t5
  let v588 : Index := Scalar.indexCast arg15
  let c48 : Index := 48#32
  ![3, v588.toNat, 48]
def k0_off1775 (k0_t5 : Fin k0_t5_loop.trips) : Fin 3 → Nat :=
  let c3_i32_647 : BitVec 32 := 3#32
  let v591 : Index := Scalar.indexCast c3_i32_647
  let c0_i32_602 : BitVec 32 := 0#32
  let c1_i32_604 : BitVec 32 := 1#32
  let arg15 : BitVec 32 := Scf.iv c0_i32_602 c1_i32_604 k0_t5
  let v592 : Index := Scalar.indexCast arg15
  let c64 : Index := 64#32
  ![3, v592.toNat, 64]
def k0_off1776 (k0_t5 : Fin k0_t5_loop.trips) : Fin 3 → Nat :=
  let c3_i32_648 : BitVec 32 := 3#32
  let v595 : Index := Scalar.indexCast c3_i32_648
  let c0_i32_602 : BitVec 32 := 0#32
  let c1_i32_604 : BitVec 32 := 1#32
  let arg15 : BitVec 32 := Scf.iv c0_i32_602 c1_i32_604 k0_t5
  let v596 : Index := Scalar.indexCast arg15
  let c80 : Index := 80#32
  ![3, v596.toNat, 80]
def k0_off1777 (k0_t5 : Fin k0_t5_loop.trips) : Fin 3 → Nat :=
  let c3_i32_649 : BitVec 32 := 3#32
  let v599 : Index := Scalar.indexCast c3_i32_649
  let c0_i32_602 : BitVec 32 := 0#32
  let c1_i32_604 : BitVec 32 := 1#32
  let arg15 : BitVec 32 := Scf.iv c0_i32_602 c1_i32_604 k0_t5
  let v600 : Index := Scalar.indexCast arg15
  let c96 : Index := 96#32
  ![3, v600.toNat, 96]
def k0_off1778 (k0_t5 : Fin k0_t5_loop.trips) : Fin 3 → Nat :=
  let c3_i32_650 : BitVec 32 := 3#32
  let v603 : Index := Scalar.indexCast c3_i32_650
  let c0_i32_602 : BitVec 32 := 0#32
  let c1_i32_604 : BitVec 32 := 1#32
  let arg15 : BitVec 32 := Scf.iv c0_i32_602 c1_i32_604 k0_t5
  let v604 : Index := Scalar.indexCast arg15
  let c112 : Index := 112#32
  ![3, v604.toNat, 112]
def k0_off1779 (k0_t5 : Fin k0_t5_loop.trips) : Fin 3 → Nat :=
  let c3_i32_651 : BitVec 32 := 3#32
  let v607 : Index := Scalar.indexCast c3_i32_651
  let c0_i32_602 : BitVec 32 := 0#32
  let c1_i32_604 : BitVec 32 := 1#32
  let arg15 : BitVec 32 := Scf.iv c0_i32_602 c1_i32_604 k0_t5
  let v608 : Index := Scalar.indexCast arg15
  let c128 : Index := 128#32
  ![3, v608.toNat, 128]
def k0_off1780 (k0_t5 : Fin k0_t5_loop.trips) : Fin 3 → Nat :=
  let c3_i32_652 : BitVec 32 := 3#32
  let v611 : Index := Scalar.indexCast c3_i32_652
  let c0_i32_602 : BitVec 32 := 0#32
  let c1_i32_604 : BitVec 32 := 1#32
  let arg15 : BitVec 32 := Scf.iv c0_i32_602 c1_i32_604 k0_t5
  let v612 : Index := Scalar.indexCast arg15
  let c144 : Index := 144#32
  ![3, v612.toNat, 144]
def k0_off1781 (k0_t5 : Fin k0_t5_loop.trips) : Fin 3 → Nat :=
  let c3_i32_653 : BitVec 32 := 3#32
  let v615 : Index := Scalar.indexCast c3_i32_653
  let c0_i32_602 : BitVec 32 := 0#32
  let c1_i32_604 : BitVec 32 := 1#32
  let arg15 : BitVec 32 := Scf.iv c0_i32_602 c1_i32_604 k0_t5
  let v616 : Index := Scalar.indexCast arg15
  let c160 : Index := 160#32
  ![3, v616.toNat, 160]
def k0_off1782 (k0_t5 : Fin k0_t5_loop.trips) : Fin 3 → Nat :=
  let c3_i32_654 : BitVec 32 := 3#32
  let v619 : Index := Scalar.indexCast c3_i32_654
  let c0_i32_602 : BitVec 32 := 0#32
  let c1_i32_604 : BitVec 32 := 1#32
  let arg15 : BitVec 32 := Scf.iv c0_i32_602 c1_i32_604 k0_t5
  let v620 : Index := Scalar.indexCast arg15
  let c176 : Index := 176#32
  ![3, v620.toNat, 176]
def k0_off1783 (k0_t5 : Fin k0_t5_loop.trips) : Fin 3 → Nat :=
  let c3_i32_655 : BitVec 32 := 3#32
  let v623 : Index := Scalar.indexCast c3_i32_655
  let c0_i32_602 : BitVec 32 := 0#32
  let c1_i32_604 : BitVec 32 := 1#32
  let arg15 : BitVec 32 := Scf.iv c0_i32_602 c1_i32_604 k0_t5
  let v624 : Index := Scalar.indexCast arg15
  let c192 : Index := 192#32
  ![3, v624.toNat, 192]
def k0_off1784 (k0_t5 : Fin k0_t5_loop.trips) : Fin 3 → Nat :=
  let c3_i32_656 : BitVec 32 := 3#32
  let v627 : Index := Scalar.indexCast c3_i32_656
  let c0_i32_602 : BitVec 32 := 0#32
  let c1_i32_604 : BitVec 32 := 1#32
  let arg15 : BitVec 32 := Scf.iv c0_i32_602 c1_i32_604 k0_t5
  let v628 : Index := Scalar.indexCast arg15
  let c208 : Index := 208#32
  ![3, v628.toNat, 208]
def k0_off1785 (k0_t5 : Fin k0_t5_loop.trips) : Fin 3 → Nat :=
  let c3_i32_657 : BitVec 32 := 3#32
  let v631 : Index := Scalar.indexCast c3_i32_657
  let c0_i32_602 : BitVec 32 := 0#32
  let c1_i32_604 : BitVec 32 := 1#32
  let arg15 : BitVec 32 := Scf.iv c0_i32_602 c1_i32_604 k0_t5
  let v632 : Index := Scalar.indexCast arg15
  let c224 : Index := 224#32
  ![3, v632.toNat, 224]
def k0_off1786 (k0_t5 : Fin k0_t5_loop.trips) : Fin 3 → Nat :=
  let c3_i32_658 : BitVec 32 := 3#32
  let v635 : Index := Scalar.indexCast c3_i32_658
  let c0_i32_602 : BitVec 32 := 0#32
  let c1_i32_604 : BitVec 32 := 1#32
  let arg15 : BitVec 32 := Scf.iv c0_i32_602 c1_i32_604 k0_t5
  let v636 : Index := Scalar.indexCast arg15
  let c240 : Index := 240#32
  ![3, v636.toNat, 240]
def k0_off1787 (k0_t5 : Fin k0_t5_loop.trips) : Fin 3 → Nat :=
  let c3_i32_659 : BitVec 32 := 3#32
  let v639 : Index := Scalar.indexCast c3_i32_659
  let c0_i32_602 : BitVec 32 := 0#32
  let c1_i32_604 : BitVec 32 := 1#32
  let arg15 : BitVec 32 := Scf.iv c0_i32_602 c1_i32_604 k0_t5
  let v640 : Index := Scalar.indexCast arg15
  let c256 : Index := 256#32
  ![3, v640.toNat, 256]
def k0_off1788 (k0_t5 : Fin k0_t5_loop.trips) : Fin 3 → Nat :=
  let c3_i32_660 : BitVec 32 := 3#32
  let v643 : Index := Scalar.indexCast c3_i32_660
  let c0_i32_602 : BitVec 32 := 0#32
  let c1_i32_604 : BitVec 32 := 1#32
  let arg15 : BitVec 32 := Scf.iv c0_i32_602 c1_i32_604 k0_t5
  let v644 : Index := Scalar.indexCast arg15
  let c272 : Index := 272#32
  ![3, v644.toNat, 272]
def k0_off1789 (k0_t5 : Fin k0_t5_loop.trips) : Fin 3 → Nat :=
  let c3_i32_661 : BitVec 32 := 3#32
  let v647 : Index := Scalar.indexCast c3_i32_661
  let c0_i32_602 : BitVec 32 := 0#32
  let c1_i32_604 : BitVec 32 := 1#32
  let arg15 : BitVec 32 := Scf.iv c0_i32_602 c1_i32_604 k0_t5
  let v648 : Index := Scalar.indexCast arg15
  let c288 : Index := 288#32
  ![3, v648.toNat, 288]
def k0_off1790 (k0_t5 : Fin k0_t5_loop.trips) : Fin 3 → Nat :=
  let c3_i32_662 : BitVec 32 := 3#32
  let v651 : Index := Scalar.indexCast c3_i32_662
  let c0_i32_602 : BitVec 32 := 0#32
  let c1_i32_604 : BitVec 32 := 1#32
  let arg15 : BitVec 32 := Scf.iv c0_i32_602 c1_i32_604 k0_t5
  let v652 : Index := Scalar.indexCast arg15
  let c304 : Index := 304#32
  ![3, v652.toNat, 304]
def k0_off1791 (k0_t5 : Fin k0_t5_loop.trips) : Fin 3 → Nat :=
  let c3_i32_663 : BitVec 32 := 3#32
  let v655 : Index := Scalar.indexCast c3_i32_663
  let c0_i32_602 : BitVec 32 := 0#32
  let c1_i32_604 : BitVec 32 := 1#32
  let arg15 : BitVec 32 := Scf.iv c0_i32_602 c1_i32_604 k0_t5
  let v656 : Index := Scalar.indexCast arg15
  let c320 : Index := 320#32
  ![3, v656.toNat, 320]
def k0_off1792 (k0_t5 : Fin k0_t5_loop.trips) : Fin 3 → Nat :=
  let c3_i32_664 : BitVec 32 := 3#32
  let v659 : Index := Scalar.indexCast c3_i32_664
  let c0_i32_602 : BitVec 32 := 0#32
  let c1_i32_604 : BitVec 32 := 1#32
  let arg15 : BitVec 32 := Scf.iv c0_i32_602 c1_i32_604 k0_t5
  let v660 : Index := Scalar.indexCast arg15
  let c336 : Index := 336#32
  ![3, v660.toNat, 336]
def k0_off1793 (k0_t5 : Fin k0_t5_loop.trips) : Fin 3 → Nat :=
  let c3_i32_665 : BitVec 32 := 3#32
  let v663 : Index := Scalar.indexCast c3_i32_665
  let c0_i32_602 : BitVec 32 := 0#32
  let c1_i32_604 : BitVec 32 := 1#32
  let arg15 : BitVec 32 := Scf.iv c0_i32_602 c1_i32_604 k0_t5
  let v664 : Index := Scalar.indexCast arg15
  let c352 : Index := 352#32
  ![3, v664.toNat, 352]
def k0_off1794 (k0_t5 : Fin k0_t5_loop.trips) : Fin 3 → Nat :=
  let c3_i32_666 : BitVec 32 := 3#32
  let v667 : Index := Scalar.indexCast c3_i32_666
  let c0_i32_602 : BitVec 32 := 0#32
  let c1_i32_604 : BitVec 32 := 1#32
  let arg15 : BitVec 32 := Scf.iv c0_i32_602 c1_i32_604 k0_t5
  let v668 : Index := Scalar.indexCast arg15
  let c368 : Index := 368#32
  ![3, v668.toNat, 368]
def k0_off1795 (k0_t5 : Fin k0_t5_loop.trips) : Fin 3 → Nat :=
  let c3_i32_667 : BitVec 32 := 3#32
  let v671 : Index := Scalar.indexCast c3_i32_667
  let c0_i32_602 : BitVec 32 := 0#32
  let c1_i32_604 : BitVec 32 := 1#32
  let arg15 : BitVec 32 := Scf.iv c0_i32_602 c1_i32_604 k0_t5
  let v672 : Index := Scalar.indexCast arg15
  let c384 : Index := 384#32
  ![3, v672.toNat, 384]
def k0_off1796 (k0_t5 : Fin k0_t5_loop.trips) : Fin 3 → Nat :=
  let c3_i32_668 : BitVec 32 := 3#32
  let v675 : Index := Scalar.indexCast c3_i32_668
  let c0_i32_602 : BitVec 32 := 0#32
  let c1_i32_604 : BitVec 32 := 1#32
  let arg15 : BitVec 32 := Scf.iv c0_i32_602 c1_i32_604 k0_t5
  let v676 : Index := Scalar.indexCast arg15
  let c400 : Index := 400#32
  ![3, v676.toNat, 400]
def k0_off1797 (k0_t5 : Fin k0_t5_loop.trips) : Fin 3 → Nat :=
  let c3_i32_669 : BitVec 32 := 3#32
  let v679 : Index := Scalar.indexCast c3_i32_669
  let c0_i32_602 : BitVec 32 := 0#32
  let c1_i32_604 : BitVec 32 := 1#32
  let arg15 : BitVec 32 := Scf.iv c0_i32_602 c1_i32_604 k0_t5
  let v680 : Index := Scalar.indexCast arg15
  let c416 : Index := 416#32
  ![3, v680.toNat, 416]
def k0_off1798 (k0_t5 : Fin k0_t5_loop.trips) : Fin 3 → Nat :=
  let c3_i32_670 : BitVec 32 := 3#32
  let v683 : Index := Scalar.indexCast c3_i32_670
  let c0_i32_602 : BitVec 32 := 0#32
  let c1_i32_604 : BitVec 32 := 1#32
  let arg15 : BitVec 32 := Scf.iv c0_i32_602 c1_i32_604 k0_t5
  let v684 : Index := Scalar.indexCast arg15
  let c432 : Index := 432#32
  ![3, v684.toNat, 432]
def k0_off1799 (k0_t5 : Fin k0_t5_loop.trips) : Fin 3 → Nat :=
  let c3_i32_671 : BitVec 32 := 3#32
  let v687 : Index := Scalar.indexCast c3_i32_671
  let c0_i32_602 : BitVec 32 := 0#32
  let c1_i32_604 : BitVec 32 := 1#32
  let arg15 : BitVec 32 := Scf.iv c0_i32_602 c1_i32_604 k0_t5
  let v688 : Index := Scalar.indexCast arg15
  let c448 : Index := 448#32
  ![3, v688.toNat, 448]
def k0_off1800 (k0_t5 : Fin k0_t5_loop.trips) : Fin 3 → Nat :=
  let c3_i32_672 : BitVec 32 := 3#32
  let v691 : Index := Scalar.indexCast c3_i32_672
  let c0_i32_602 : BitVec 32 := 0#32
  let c1_i32_604 : BitVec 32 := 1#32
  let arg15 : BitVec 32 := Scf.iv c0_i32_602 c1_i32_604 k0_t5
  let v692 : Index := Scalar.indexCast arg15
  let c464 : Index := 464#32
  ![3, v692.toNat, 464]
def k0_off1801 (k0_t5 : Fin k0_t5_loop.trips) : Fin 3 → Nat :=
  let c3_i32_673 : BitVec 32 := 3#32
  let v695 : Index := Scalar.indexCast c3_i32_673
  let c0_i32_602 : BitVec 32 := 0#32
  let c1_i32_604 : BitVec 32 := 1#32
  let arg15 : BitVec 32 := Scf.iv c0_i32_602 c1_i32_604 k0_t5
  let v696 : Index := Scalar.indexCast arg15
  let c480 : Index := 480#32
  ![3, v696.toNat, 480]
def k0_off1802 (k0_t5 : Fin k0_t5_loop.trips) : Fin 3 → Nat :=
  let c3_i32_674 : BitVec 32 := 3#32
  let v699 : Index := Scalar.indexCast c3_i32_674
  let c0_i32_602 : BitVec 32 := 0#32
  let c1_i32_604 : BitVec 32 := 1#32
  let arg15 : BitVec 32 := Scf.iv c0_i32_602 c1_i32_604 k0_t5
  let v700 : Index := Scalar.indexCast arg15
  let c496 : Index := 496#32
  ![3, v700.toNat, 496]
def k0_off1803 (k0_t5 : Fin k0_t5_loop.trips) : Fin 4 → Nat :=
  let c3_i32_675 : BitVec 32 := 3#32
  let v703 : Index := Scalar.indexCast c3_i32_675
  let c0_i32_676 : BitVec 32 := 0#32
  let v704 : Index := Scalar.indexCast c0_i32_676
  let c0_i32_602 : BitVec 32 := 0#32
  let c1_i32_604 : BitVec 32 := 1#32
  let arg15 : BitVec 32 := Scf.iv c0_i32_602 c1_i32_604 k0_t5
  let v705 : Index := Scalar.indexCast arg15
  let c0_677 : Index := 0#32
  ![3, 0, v705.toNat, 0]
def k0_off1804 (k0_t5 : Fin k0_t5_loop.trips) : Fin 4 → Nat :=
  let c1_i32_678 : BitVec 32 := 1#32
  let v709 : Index := Scalar.indexCast c1_i32_678
  let c0_i32_679 : BitVec 32 := 0#32
  let v710 : Index := Scalar.indexCast c0_i32_679
  let c0_i32_602 : BitVec 32 := 0#32
  let c1_i32_604 : BitVec 32 := 1#32
  let arg15 : BitVec 32 := Scf.iv c0_i32_602 c1_i32_604 k0_t5
  let v711 : Index := Scalar.indexCast arg15
  let c0_680 : Index := 0#32
  ![1, 0, v711.toNat, 0]
def k0_off1805 (k0_t5 : Fin k0_t5_loop.trips) : Fin 4 → Nat :=
  let c3_i32_681 : BitVec 32 := 3#32
  let v715 : Index := Scalar.indexCast c3_i32_681
  let c0_i32_682 : BitVec 32 := 0#32
  let v716 : Index := Scalar.indexCast c0_i32_682
  let c0_i32_602 : BitVec 32 := 0#32
  let c1_i32_604 : BitVec 32 := 1#32
  let arg15 : BitVec 32 := Scf.iv c0_i32_602 c1_i32_604 k0_t5
  let v717 : Index := Scalar.indexCast arg15
  let c16_683 : Index := 16#32
  ![3, 0, v717.toNat, 16]
def k0_off1806 (k0_t5 : Fin k0_t5_loop.trips) : Fin 4 → Nat :=
  let c1_i32_684 : BitVec 32 := 1#32
  let v721 : Index := Scalar.indexCast c1_i32_684
  let c0_i32_685 : BitVec 32 := 0#32
  let v722 : Index := Scalar.indexCast c0_i32_685
  let c0_i32_602 : BitVec 32 := 0#32
  let c1_i32_604 : BitVec 32 := 1#32
  let arg15 : BitVec 32 := Scf.iv c0_i32_602 c1_i32_604 k0_t5
  let v723 : Index := Scalar.indexCast arg15
  let c16_686 : Index := 16#32
  ![1, 0, v723.toNat, 16]
def k0_off1807 (k0_t5 : Fin k0_t5_loop.trips) : Fin 4 → Nat :=
  let c3_i32_687 : BitVec 32 := 3#32
  let v727 : Index := Scalar.indexCast c3_i32_687
  let c0_i32_688 : BitVec 32 := 0#32
  let v728 : Index := Scalar.indexCast c0_i32_688
  let c0_i32_602 : BitVec 32 := 0#32
  let c1_i32_604 : BitVec 32 := 1#32
  let arg15 : BitVec 32 := Scf.iv c0_i32_602 c1_i32_604 k0_t5
  let v729 : Index := Scalar.indexCast arg15
  let c32_689 : Index := 32#32
  ![3, 0, v729.toNat, 32]
def k0_off1808 (k0_t5 : Fin k0_t5_loop.trips) : Fin 4 → Nat :=
  let c1_i32_690 : BitVec 32 := 1#32
  let v733 : Index := Scalar.indexCast c1_i32_690
  let c0_i32_691 : BitVec 32 := 0#32
  let v734 : Index := Scalar.indexCast c0_i32_691
  let c0_i32_602 : BitVec 32 := 0#32
  let c1_i32_604 : BitVec 32 := 1#32
  let arg15 : BitVec 32 := Scf.iv c0_i32_602 c1_i32_604 k0_t5
  let v735 : Index := Scalar.indexCast arg15
  let c32_692 : Index := 32#32
  ![1, 0, v735.toNat, 32]
def k0_off1809 (k0_t5 : Fin k0_t5_loop.trips) : Fin 4 → Nat :=
  let c3_i32_693 : BitVec 32 := 3#32
  let v739 : Index := Scalar.indexCast c3_i32_693
  let c0_i32_694 : BitVec 32 := 0#32
  let v740 : Index := Scalar.indexCast c0_i32_694
  let c0_i32_602 : BitVec 32 := 0#32
  let c1_i32_604 : BitVec 32 := 1#32
  let arg15 : BitVec 32 := Scf.iv c0_i32_602 c1_i32_604 k0_t5
  let v741 : Index := Scalar.indexCast arg15
  let c48_695 : Index := 48#32
  ![3, 0, v741.toNat, 48]
def k0_off1810 (k0_t5 : Fin k0_t5_loop.trips) : Fin 4 → Nat :=
  let c1_i32_696 : BitVec 32 := 1#32
  let v745 : Index := Scalar.indexCast c1_i32_696
  let c0_i32_697 : BitVec 32 := 0#32
  let v746 : Index := Scalar.indexCast c0_i32_697
  let c0_i32_602 : BitVec 32 := 0#32
  let c1_i32_604 : BitVec 32 := 1#32
  let arg15 : BitVec 32 := Scf.iv c0_i32_602 c1_i32_604 k0_t5
  let v747 : Index := Scalar.indexCast arg15
  let c48_698 : Index := 48#32
  ![1, 0, v747.toNat, 48]
def k0_off1811 (k0_t5 : Fin k0_t5_loop.trips) : Fin 4 → Nat :=
  let c3_i32_699 : BitVec 32 := 3#32
  let v751 : Index := Scalar.indexCast c3_i32_699
  let c0_i32_700 : BitVec 32 := 0#32
  let v752 : Index := Scalar.indexCast c0_i32_700
  let c0_i32_602 : BitVec 32 := 0#32
  let c1_i32_604 : BitVec 32 := 1#32
  let arg15 : BitVec 32 := Scf.iv c0_i32_602 c1_i32_604 k0_t5
  let v753 : Index := Scalar.indexCast arg15
  let c64_701 : Index := 64#32
  ![3, 0, v753.toNat, 64]
def k0_off1812 (k0_t5 : Fin k0_t5_loop.trips) : Fin 4 → Nat :=
  let c1_i32_702 : BitVec 32 := 1#32
  let v757 : Index := Scalar.indexCast c1_i32_702
  let c0_i32_703 : BitVec 32 := 0#32
  let v758 : Index := Scalar.indexCast c0_i32_703
  let c0_i32_602 : BitVec 32 := 0#32
  let c1_i32_604 : BitVec 32 := 1#32
  let arg15 : BitVec 32 := Scf.iv c0_i32_602 c1_i32_604 k0_t5
  let v759 : Index := Scalar.indexCast arg15
  let c64_704 : Index := 64#32
  ![1, 0, v759.toNat, 64]
def k0_off1813 (k0_t5 : Fin k0_t5_loop.trips) : Fin 4 → Nat :=
  let c3_i32_705 : BitVec 32 := 3#32
  let v763 : Index := Scalar.indexCast c3_i32_705
  let c0_i32_706 : BitVec 32 := 0#32
  let v764 : Index := Scalar.indexCast c0_i32_706
  let c0_i32_602 : BitVec 32 := 0#32
  let c1_i32_604 : BitVec 32 := 1#32
  let arg15 : BitVec 32 := Scf.iv c0_i32_602 c1_i32_604 k0_t5
  let v765 : Index := Scalar.indexCast arg15
  let c80_707 : Index := 80#32
  ![3, 0, v765.toNat, 80]
def k0_off1814 (k0_t5 : Fin k0_t5_loop.trips) : Fin 4 → Nat :=
  let c1_i32_708 : BitVec 32 := 1#32
  let v769 : Index := Scalar.indexCast c1_i32_708
  let c0_i32_709 : BitVec 32 := 0#32
  let v770 : Index := Scalar.indexCast c0_i32_709
  let c0_i32_602 : BitVec 32 := 0#32
  let c1_i32_604 : BitVec 32 := 1#32
  let arg15 : BitVec 32 := Scf.iv c0_i32_602 c1_i32_604 k0_t5
  let v771 : Index := Scalar.indexCast arg15
  let c80_710 : Index := 80#32
  ![1, 0, v771.toNat, 80]
def k0_off1815 (k0_t5 : Fin k0_t5_loop.trips) : Fin 4 → Nat :=
  let c3_i32_711 : BitVec 32 := 3#32
  let v775 : Index := Scalar.indexCast c3_i32_711
  let c0_i32_712 : BitVec 32 := 0#32
  let v776 : Index := Scalar.indexCast c0_i32_712
  let c0_i32_602 : BitVec 32 := 0#32
  let c1_i32_604 : BitVec 32 := 1#32
  let arg15 : BitVec 32 := Scf.iv c0_i32_602 c1_i32_604 k0_t5
  let v777 : Index := Scalar.indexCast arg15
  let c96_713 : Index := 96#32
  ![3, 0, v777.toNat, 96]
def k0_off1816 (k0_t5 : Fin k0_t5_loop.trips) : Fin 4 → Nat :=
  let c1_i32_714 : BitVec 32 := 1#32
  let v781 : Index := Scalar.indexCast c1_i32_714
  let c0_i32_715 : BitVec 32 := 0#32
  let v782 : Index := Scalar.indexCast c0_i32_715
  let c0_i32_602 : BitVec 32 := 0#32
  let c1_i32_604 : BitVec 32 := 1#32
  let arg15 : BitVec 32 := Scf.iv c0_i32_602 c1_i32_604 k0_t5
  let v783 : Index := Scalar.indexCast arg15
  let c96_716 : Index := 96#32
  ![1, 0, v783.toNat, 96]
def k0_off1817 (k0_t5 : Fin k0_t5_loop.trips) : Fin 4 → Nat :=
  let c3_i32_717 : BitVec 32 := 3#32
  let v787 : Index := Scalar.indexCast c3_i32_717
  let c0_i32_718 : BitVec 32 := 0#32
  let v788 : Index := Scalar.indexCast c0_i32_718
  let c0_i32_602 : BitVec 32 := 0#32
  let c1_i32_604 : BitVec 32 := 1#32
  let arg15 : BitVec 32 := Scf.iv c0_i32_602 c1_i32_604 k0_t5
  let v789 : Index := Scalar.indexCast arg15
  let c112_719 : Index := 112#32
  ![3, 0, v789.toNat, 112]
def k0_off1818 (k0_t5 : Fin k0_t5_loop.trips) : Fin 4 → Nat :=
  let c1_i32_720 : BitVec 32 := 1#32
  let v793 : Index := Scalar.indexCast c1_i32_720
  let c0_i32_721 : BitVec 32 := 0#32
  let v794 : Index := Scalar.indexCast c0_i32_721
  let c0_i32_602 : BitVec 32 := 0#32
  let c1_i32_604 : BitVec 32 := 1#32
  let arg15 : BitVec 32 := Scf.iv c0_i32_602 c1_i32_604 k0_t5
  let v795 : Index := Scalar.indexCast arg15
  let c112_722 : Index := 112#32
  ![1, 0, v795.toNat, 112]
def k0_off1819 (k0_t5 : Fin k0_t5_loop.trips) : Fin 4 → Nat :=
  let c3_i32_723 : BitVec 32 := 3#32
  let v799 : Index := Scalar.indexCast c3_i32_723
  let c0_i32_724 : BitVec 32 := 0#32
  let v800 : Index := Scalar.indexCast c0_i32_724
  let c0_i32_602 : BitVec 32 := 0#32
  let c1_i32_604 : BitVec 32 := 1#32
  let arg15 : BitVec 32 := Scf.iv c0_i32_602 c1_i32_604 k0_t5
  let v801 : Index := Scalar.indexCast arg15
  let c128_725 : Index := 128#32
  ![3, 0, v801.toNat, 128]
def k0_off1820 (k0_t5 : Fin k0_t5_loop.trips) : Fin 4 → Nat :=
  let c1_i32_726 : BitVec 32 := 1#32
  let v805 : Index := Scalar.indexCast c1_i32_726
  let c0_i32_727 : BitVec 32 := 0#32
  let v806 : Index := Scalar.indexCast c0_i32_727
  let c0_i32_602 : BitVec 32 := 0#32
  let c1_i32_604 : BitVec 32 := 1#32
  let arg15 : BitVec 32 := Scf.iv c0_i32_602 c1_i32_604 k0_t5
  let v807 : Index := Scalar.indexCast arg15
  let c128_728 : Index := 128#32
  ![1, 0, v807.toNat, 128]
def k0_off1821 (k0_t5 : Fin k0_t5_loop.trips) : Fin 4 → Nat :=
  let c3_i32_729 : BitVec 32 := 3#32
  let v811 : Index := Scalar.indexCast c3_i32_729
  let c0_i32_730 : BitVec 32 := 0#32
  let v812 : Index := Scalar.indexCast c0_i32_730
  let c0_i32_602 : BitVec 32 := 0#32
  let c1_i32_604 : BitVec 32 := 1#32
  let arg15 : BitVec 32 := Scf.iv c0_i32_602 c1_i32_604 k0_t5
  let v813 : Index := Scalar.indexCast arg15
  let c144_731 : Index := 144#32
  ![3, 0, v813.toNat, 144]
def k0_off1822 (k0_t5 : Fin k0_t5_loop.trips) : Fin 4 → Nat :=
  let c1_i32_732 : BitVec 32 := 1#32
  let v817 : Index := Scalar.indexCast c1_i32_732
  let c0_i32_733 : BitVec 32 := 0#32
  let v818 : Index := Scalar.indexCast c0_i32_733
  let c0_i32_602 : BitVec 32 := 0#32
  let c1_i32_604 : BitVec 32 := 1#32
  let arg15 : BitVec 32 := Scf.iv c0_i32_602 c1_i32_604 k0_t5
  let v819 : Index := Scalar.indexCast arg15
  let c144_734 : Index := 144#32
  ![1, 0, v819.toNat, 144]
def k0_off1823 (k0_t5 : Fin k0_t5_loop.trips) : Fin 4 → Nat :=
  let c3_i32_735 : BitVec 32 := 3#32
  let v823 : Index := Scalar.indexCast c3_i32_735
  let c0_i32_736 : BitVec 32 := 0#32
  let v824 : Index := Scalar.indexCast c0_i32_736
  let c0_i32_602 : BitVec 32 := 0#32
  let c1_i32_604 : BitVec 32 := 1#32
  let arg15 : BitVec 32 := Scf.iv c0_i32_602 c1_i32_604 k0_t5
  let v825 : Index := Scalar.indexCast arg15
  let c160_737 : Index := 160#32
  ![3, 0, v825.toNat, 160]
def k0_off1824 (k0_t5 : Fin k0_t5_loop.trips) : Fin 4 → Nat :=
  let c1_i32_738 : BitVec 32 := 1#32
  let v829 : Index := Scalar.indexCast c1_i32_738
  let c0_i32_739 : BitVec 32 := 0#32
  let v830 : Index := Scalar.indexCast c0_i32_739
  let c0_i32_602 : BitVec 32 := 0#32
  let c1_i32_604 : BitVec 32 := 1#32
  let arg15 : BitVec 32 := Scf.iv c0_i32_602 c1_i32_604 k0_t5
  let v831 : Index := Scalar.indexCast arg15
  let c160_740 : Index := 160#32
  ![1, 0, v831.toNat, 160]
def k0_off1825 (k0_t5 : Fin k0_t5_loop.trips) : Fin 4 → Nat :=
  let c3_i32_741 : BitVec 32 := 3#32
  let v835 : Index := Scalar.indexCast c3_i32_741
  let c0_i32_742 : BitVec 32 := 0#32
  let v836 : Index := Scalar.indexCast c0_i32_742
  let c0_i32_602 : BitVec 32 := 0#32
  let c1_i32_604 : BitVec 32 := 1#32
  let arg15 : BitVec 32 := Scf.iv c0_i32_602 c1_i32_604 k0_t5
  let v837 : Index := Scalar.indexCast arg15
  let c176_743 : Index := 176#32
  ![3, 0, v837.toNat, 176]
def k0_off1826 (k0_t5 : Fin k0_t5_loop.trips) : Fin 4 → Nat :=
  let c1_i32_744 : BitVec 32 := 1#32
  let v841 : Index := Scalar.indexCast c1_i32_744
  let c0_i32_745 : BitVec 32 := 0#32
  let v842 : Index := Scalar.indexCast c0_i32_745
  let c0_i32_602 : BitVec 32 := 0#32
  let c1_i32_604 : BitVec 32 := 1#32
  let arg15 : BitVec 32 := Scf.iv c0_i32_602 c1_i32_604 k0_t5
  let v843 : Index := Scalar.indexCast arg15
  let c176_746 : Index := 176#32
  ![1, 0, v843.toNat, 176]
def k0_off1827 (k0_t5 : Fin k0_t5_loop.trips) : Fin 4 → Nat :=
  let c3_i32_747 : BitVec 32 := 3#32
  let v847 : Index := Scalar.indexCast c3_i32_747
  let c0_i32_748 : BitVec 32 := 0#32
  let v848 : Index := Scalar.indexCast c0_i32_748
  let c0_i32_602 : BitVec 32 := 0#32
  let c1_i32_604 : BitVec 32 := 1#32
  let arg15 : BitVec 32 := Scf.iv c0_i32_602 c1_i32_604 k0_t5
  let v849 : Index := Scalar.indexCast arg15
  let c192_749 : Index := 192#32
  ![3, 0, v849.toNat, 192]
def k0_off1828 (k0_t5 : Fin k0_t5_loop.trips) : Fin 4 → Nat :=
  let c1_i32_750 : BitVec 32 := 1#32
  let v853 : Index := Scalar.indexCast c1_i32_750
  let c0_i32_751 : BitVec 32 := 0#32
  let v854 : Index := Scalar.indexCast c0_i32_751
  let c0_i32_602 : BitVec 32 := 0#32
  let c1_i32_604 : BitVec 32 := 1#32
  let arg15 : BitVec 32 := Scf.iv c0_i32_602 c1_i32_604 k0_t5
  let v855 : Index := Scalar.indexCast arg15
  let c192_752 : Index := 192#32
  ![1, 0, v855.toNat, 192]
def k0_off1829 (k0_t5 : Fin k0_t5_loop.trips) : Fin 4 → Nat :=
  let c3_i32_753 : BitVec 32 := 3#32
  let v859 : Index := Scalar.indexCast c3_i32_753
  let c0_i32_754 : BitVec 32 := 0#32
  let v860 : Index := Scalar.indexCast c0_i32_754
  let c0_i32_602 : BitVec 32 := 0#32
  let c1_i32_604 : BitVec 32 := 1#32
  let arg15 : BitVec 32 := Scf.iv c0_i32_602 c1_i32_604 k0_t5
  let v861 : Index := Scalar.indexCast arg15
  let c208_755 : Index := 208#32
  ![3, 0, v861.toNat, 208]
def k0_off1830 (k0_t5 : Fin k0_t5_loop.trips) : Fin 4 → Nat :=
  let c1_i32_756 : BitVec 32 := 1#32
  let v865 : Index := Scalar.indexCast c1_i32_756
  let c0_i32_757 : BitVec 32 := 0#32
  let v866 : Index := Scalar.indexCast c0_i32_757
  let c0_i32_602 : BitVec 32 := 0#32
  let c1_i32_604 : BitVec 32 := 1#32
  let arg15 : BitVec 32 := Scf.iv c0_i32_602 c1_i32_604 k0_t5
  let v867 : Index := Scalar.indexCast arg15
  let c208_758 : Index := 208#32
  ![1, 0, v867.toNat, 208]
def k0_off1831 (k0_t5 : Fin k0_t5_loop.trips) : Fin 4 → Nat :=
  let c3_i32_759 : BitVec 32 := 3#32
  let v871 : Index := Scalar.indexCast c3_i32_759
  let c0_i32_760 : BitVec 32 := 0#32
  let v872 : Index := Scalar.indexCast c0_i32_760
  let c0_i32_602 : BitVec 32 := 0#32
  let c1_i32_604 : BitVec 32 := 1#32
  let arg15 : BitVec 32 := Scf.iv c0_i32_602 c1_i32_604 k0_t5
  let v873 : Index := Scalar.indexCast arg15
  let c224_761 : Index := 224#32
  ![3, 0, v873.toNat, 224]
def k0_off1832 (k0_t5 : Fin k0_t5_loop.trips) : Fin 4 → Nat :=
  let c1_i32_762 : BitVec 32 := 1#32
  let v877 : Index := Scalar.indexCast c1_i32_762
  let c0_i32_763 : BitVec 32 := 0#32
  let v878 : Index := Scalar.indexCast c0_i32_763
  let c0_i32_602 : BitVec 32 := 0#32
  let c1_i32_604 : BitVec 32 := 1#32
  let arg15 : BitVec 32 := Scf.iv c0_i32_602 c1_i32_604 k0_t5
  let v879 : Index := Scalar.indexCast arg15
  let c224_764 : Index := 224#32
  ![1, 0, v879.toNat, 224]
def k0_off1833 (k0_t5 : Fin k0_t5_loop.trips) : Fin 4 → Nat :=
  let c3_i32_765 : BitVec 32 := 3#32
  let v883 : Index := Scalar.indexCast c3_i32_765
  let c0_i32_766 : BitVec 32 := 0#32
  let v884 : Index := Scalar.indexCast c0_i32_766
  let c0_i32_602 : BitVec 32 := 0#32
  let c1_i32_604 : BitVec 32 := 1#32
  let arg15 : BitVec 32 := Scf.iv c0_i32_602 c1_i32_604 k0_t5
  let v885 : Index := Scalar.indexCast arg15
  let c240_767 : Index := 240#32
  ![3, 0, v885.toNat, 240]
def k0_off1834 (k0_t5 : Fin k0_t5_loop.trips) : Fin 4 → Nat :=
  let c1_i32_768 : BitVec 32 := 1#32
  let v889 : Index := Scalar.indexCast c1_i32_768
  let c0_i32_769 : BitVec 32 := 0#32
  let v890 : Index := Scalar.indexCast c0_i32_769
  let c0_i32_602 : BitVec 32 := 0#32
  let c1_i32_604 : BitVec 32 := 1#32
  let arg15 : BitVec 32 := Scf.iv c0_i32_602 c1_i32_604 k0_t5
  let v891 : Index := Scalar.indexCast arg15
  let c240_770 : Index := 240#32
  ![1, 0, v891.toNat, 240]
def k0_off1835 (k0_t5 : Fin k0_t5_loop.trips) : Fin 4 → Nat :=
  let c3_i32_771 : BitVec 32 := 3#32
  let v895 : Index := Scalar.indexCast c3_i32_771
  let c0_i32_772 : BitVec 32 := 0#32
  let v896 : Index := Scalar.indexCast c0_i32_772
  let c0_i32_602 : BitVec 32 := 0#32
  let c1_i32_604 : BitVec 32 := 1#32
  let arg15 : BitVec 32 := Scf.iv c0_i32_602 c1_i32_604 k0_t5
  let v897 : Index := Scalar.indexCast arg15
  let c256_773 : Index := 256#32
  ![3, 0, v897.toNat, 256]
def k0_off1836 (k0_t5 : Fin k0_t5_loop.trips) : Fin 4 → Nat :=
  let c1_i32_774 : BitVec 32 := 1#32
  let v901 : Index := Scalar.indexCast c1_i32_774
  let c0_i32_775 : BitVec 32 := 0#32
  let v902 : Index := Scalar.indexCast c0_i32_775
  let c0_i32_602 : BitVec 32 := 0#32
  let c1_i32_604 : BitVec 32 := 1#32
  let arg15 : BitVec 32 := Scf.iv c0_i32_602 c1_i32_604 k0_t5
  let v903 : Index := Scalar.indexCast arg15
  let c256_776 : Index := 256#32
  ![1, 0, v903.toNat, 256]
def k0_off1837 (k0_t5 : Fin k0_t5_loop.trips) : Fin 4 → Nat :=
  let c3_i32_777 : BitVec 32 := 3#32
  let v907 : Index := Scalar.indexCast c3_i32_777
  let c0_i32_778 : BitVec 32 := 0#32
  let v908 : Index := Scalar.indexCast c0_i32_778
  let c0_i32_602 : BitVec 32 := 0#32
  let c1_i32_604 : BitVec 32 := 1#32
  let arg15 : BitVec 32 := Scf.iv c0_i32_602 c1_i32_604 k0_t5
  let v909 : Index := Scalar.indexCast arg15
  let c272_779 : Index := 272#32
  ![3, 0, v909.toNat, 272]
def k0_off1838 (k0_t5 : Fin k0_t5_loop.trips) : Fin 4 → Nat :=
  let c1_i32_780 : BitVec 32 := 1#32
  let v913 : Index := Scalar.indexCast c1_i32_780
  let c0_i32_781 : BitVec 32 := 0#32
  let v914 : Index := Scalar.indexCast c0_i32_781
  let c0_i32_602 : BitVec 32 := 0#32
  let c1_i32_604 : BitVec 32 := 1#32
  let arg15 : BitVec 32 := Scf.iv c0_i32_602 c1_i32_604 k0_t5
  let v915 : Index := Scalar.indexCast arg15
  let c272_782 : Index := 272#32
  ![1, 0, v915.toNat, 272]
def k0_off1839 (k0_t5 : Fin k0_t5_loop.trips) : Fin 4 → Nat :=
  let c3_i32_783 : BitVec 32 := 3#32
  let v919 : Index := Scalar.indexCast c3_i32_783
  let c0_i32_784 : BitVec 32 := 0#32
  let v920 : Index := Scalar.indexCast c0_i32_784
  let c0_i32_602 : BitVec 32 := 0#32
  let c1_i32_604 : BitVec 32 := 1#32
  let arg15 : BitVec 32 := Scf.iv c0_i32_602 c1_i32_604 k0_t5
  let v921 : Index := Scalar.indexCast arg15
  let c288_785 : Index := 288#32
  ![3, 0, v921.toNat, 288]
def k0_off1840 (k0_t5 : Fin k0_t5_loop.trips) : Fin 4 → Nat :=
  let c1_i32_786 : BitVec 32 := 1#32
  let v925 : Index := Scalar.indexCast c1_i32_786
  let c0_i32_787 : BitVec 32 := 0#32
  let v926 : Index := Scalar.indexCast c0_i32_787
  let c0_i32_602 : BitVec 32 := 0#32
  let c1_i32_604 : BitVec 32 := 1#32
  let arg15 : BitVec 32 := Scf.iv c0_i32_602 c1_i32_604 k0_t5
  let v927 : Index := Scalar.indexCast arg15
  let c288_788 : Index := 288#32
  ![1, 0, v927.toNat, 288]
def k0_off1841 (k0_t5 : Fin k0_t5_loop.trips) : Fin 4 → Nat :=
  let c3_i32_789 : BitVec 32 := 3#32
  let v931 : Index := Scalar.indexCast c3_i32_789
  let c0_i32_790 : BitVec 32 := 0#32
  let v932 : Index := Scalar.indexCast c0_i32_790
  let c0_i32_602 : BitVec 32 := 0#32
  let c1_i32_604 : BitVec 32 := 1#32
  let arg15 : BitVec 32 := Scf.iv c0_i32_602 c1_i32_604 k0_t5
  let v933 : Index := Scalar.indexCast arg15
  let c304_791 : Index := 304#32
  ![3, 0, v933.toNat, 304]
def k0_off1842 (k0_t5 : Fin k0_t5_loop.trips) : Fin 4 → Nat :=
  let c1_i32_792 : BitVec 32 := 1#32
  let v937 : Index := Scalar.indexCast c1_i32_792
  let c0_i32_793 : BitVec 32 := 0#32
  let v938 : Index := Scalar.indexCast c0_i32_793
  let c0_i32_602 : BitVec 32 := 0#32
  let c1_i32_604 : BitVec 32 := 1#32
  let arg15 : BitVec 32 := Scf.iv c0_i32_602 c1_i32_604 k0_t5
  let v939 : Index := Scalar.indexCast arg15
  let c304_794 : Index := 304#32
  ![1, 0, v939.toNat, 304]
def k0_off1843 (k0_t5 : Fin k0_t5_loop.trips) : Fin 4 → Nat :=
  let c3_i32_795 : BitVec 32 := 3#32
  let v943 : Index := Scalar.indexCast c3_i32_795
  let c0_i32_796 : BitVec 32 := 0#32
  let v944 : Index := Scalar.indexCast c0_i32_796
  let c0_i32_602 : BitVec 32 := 0#32
  let c1_i32_604 : BitVec 32 := 1#32
  let arg15 : BitVec 32 := Scf.iv c0_i32_602 c1_i32_604 k0_t5
  let v945 : Index := Scalar.indexCast arg15
  let c320_797 : Index := 320#32
  ![3, 0, v945.toNat, 320]
def k0_off1844 (k0_t5 : Fin k0_t5_loop.trips) : Fin 4 → Nat :=
  let c1_i32_798 : BitVec 32 := 1#32
  let v949 : Index := Scalar.indexCast c1_i32_798
  let c0_i32_799 : BitVec 32 := 0#32
  let v950 : Index := Scalar.indexCast c0_i32_799
  let c0_i32_602 : BitVec 32 := 0#32
  let c1_i32_604 : BitVec 32 := 1#32
  let arg15 : BitVec 32 := Scf.iv c0_i32_602 c1_i32_604 k0_t5
  let v951 : Index := Scalar.indexCast arg15
  let c320_800 : Index := 320#32
  ![1, 0, v951.toNat, 320]
def k0_off1845 (k0_t5 : Fin k0_t5_loop.trips) : Fin 4 → Nat :=
  let c3_i32_801 : BitVec 32 := 3#32
  let v955 : Index := Scalar.indexCast c3_i32_801
  let c0_i32_802 : BitVec 32 := 0#32
  let v956 : Index := Scalar.indexCast c0_i32_802
  let c0_i32_602 : BitVec 32 := 0#32
  let c1_i32_604 : BitVec 32 := 1#32
  let arg15 : BitVec 32 := Scf.iv c0_i32_602 c1_i32_604 k0_t5
  let v957 : Index := Scalar.indexCast arg15
  let c336_803 : Index := 336#32
  ![3, 0, v957.toNat, 336]
def k0_off1846 (k0_t5 : Fin k0_t5_loop.trips) : Fin 4 → Nat :=
  let c1_i32_804 : BitVec 32 := 1#32
  let v961 : Index := Scalar.indexCast c1_i32_804
  let c0_i32_805 : BitVec 32 := 0#32
  let v962 : Index := Scalar.indexCast c0_i32_805
  let c0_i32_602 : BitVec 32 := 0#32
  let c1_i32_604 : BitVec 32 := 1#32
  let arg15 : BitVec 32 := Scf.iv c0_i32_602 c1_i32_604 k0_t5
  let v963 : Index := Scalar.indexCast arg15
  let c336_806 : Index := 336#32
  ![1, 0, v963.toNat, 336]
def k0_off1847 (k0_t5 : Fin k0_t5_loop.trips) : Fin 4 → Nat :=
  let c3_i32_807 : BitVec 32 := 3#32
  let v967 : Index := Scalar.indexCast c3_i32_807
  let c0_i32_808 : BitVec 32 := 0#32
  let v968 : Index := Scalar.indexCast c0_i32_808
  let c0_i32_602 : BitVec 32 := 0#32
  let c1_i32_604 : BitVec 32 := 1#32
  let arg15 : BitVec 32 := Scf.iv c0_i32_602 c1_i32_604 k0_t5
  let v969 : Index := Scalar.indexCast arg15
  let c352_809 : Index := 352#32
  ![3, 0, v969.toNat, 352]
def k0_off1848 (k0_t5 : Fin k0_t5_loop.trips) : Fin 4 → Nat :=
  let c1_i32_810 : BitVec 32 := 1#32
  let v973 : Index := Scalar.indexCast c1_i32_810
  let c0_i32_811 : BitVec 32 := 0#32
  let v974 : Index := Scalar.indexCast c0_i32_811
  let c0_i32_602 : BitVec 32 := 0#32
  let c1_i32_604 : BitVec 32 := 1#32
  let arg15 : BitVec 32 := Scf.iv c0_i32_602 c1_i32_604 k0_t5
  let v975 : Index := Scalar.indexCast arg15
  let c352_812 : Index := 352#32
  ![1, 0, v975.toNat, 352]
def k0_off1849 (k0_t5 : Fin k0_t5_loop.trips) : Fin 4 → Nat :=
  let c3_i32_813 : BitVec 32 := 3#32
  let v979 : Index := Scalar.indexCast c3_i32_813
  let c0_i32_814 : BitVec 32 := 0#32
  let v980 : Index := Scalar.indexCast c0_i32_814
  let c0_i32_602 : BitVec 32 := 0#32
  let c1_i32_604 : BitVec 32 := 1#32
  let arg15 : BitVec 32 := Scf.iv c0_i32_602 c1_i32_604 k0_t5
  let v981 : Index := Scalar.indexCast arg15
  let c368_815 : Index := 368#32
  ![3, 0, v981.toNat, 368]
def k0_off1850 (k0_t5 : Fin k0_t5_loop.trips) : Fin 4 → Nat :=
  let c1_i32_816 : BitVec 32 := 1#32
  let v985 : Index := Scalar.indexCast c1_i32_816
  let c0_i32_817 : BitVec 32 := 0#32
  let v986 : Index := Scalar.indexCast c0_i32_817
  let c0_i32_602 : BitVec 32 := 0#32
  let c1_i32_604 : BitVec 32 := 1#32
  let arg15 : BitVec 32 := Scf.iv c0_i32_602 c1_i32_604 k0_t5
  let v987 : Index := Scalar.indexCast arg15
  let c368_818 : Index := 368#32
  ![1, 0, v987.toNat, 368]
def k0_off1851 (k0_t5 : Fin k0_t5_loop.trips) : Fin 4 → Nat :=
  let c3_i32_819 : BitVec 32 := 3#32
  let v991 : Index := Scalar.indexCast c3_i32_819
  let c0_i32_820 : BitVec 32 := 0#32
  let v992 : Index := Scalar.indexCast c0_i32_820
  let c0_i32_602 : BitVec 32 := 0#32
  let c1_i32_604 : BitVec 32 := 1#32
  let arg15 : BitVec 32 := Scf.iv c0_i32_602 c1_i32_604 k0_t5
  let v993 : Index := Scalar.indexCast arg15
  let c384_821 : Index := 384#32
  ![3, 0, v993.toNat, 384]
def k0_off1852 (k0_t5 : Fin k0_t5_loop.trips) : Fin 4 → Nat :=
  let c1_i32_822 : BitVec 32 := 1#32
  let v997 : Index := Scalar.indexCast c1_i32_822
  let c0_i32_823 : BitVec 32 := 0#32
  let v998 : Index := Scalar.indexCast c0_i32_823
  let c0_i32_602 : BitVec 32 := 0#32
  let c1_i32_604 : BitVec 32 := 1#32
  let arg15 : BitVec 32 := Scf.iv c0_i32_602 c1_i32_604 k0_t5
  let v999 : Index := Scalar.indexCast arg15
  let c384_824 : Index := 384#32
  ![1, 0, v999.toNat, 384]
def k0_off1853 (k0_t5 : Fin k0_t5_loop.trips) : Fin 4 → Nat :=
  let c3_i32_825 : BitVec 32 := 3#32
  let v1003 : Index := Scalar.indexCast c3_i32_825
  let c0_i32_826 : BitVec 32 := 0#32
  let v1004 : Index := Scalar.indexCast c0_i32_826
  let c0_i32_602 : BitVec 32 := 0#32
  let c1_i32_604 : BitVec 32 := 1#32
  let arg15 : BitVec 32 := Scf.iv c0_i32_602 c1_i32_604 k0_t5
  let v1005 : Index := Scalar.indexCast arg15
  let c400_827 : Index := 400#32
  ![3, 0, v1005.toNat, 400]
def k0_off1854 (k0_t5 : Fin k0_t5_loop.trips) : Fin 4 → Nat :=
  let c1_i32_828 : BitVec 32 := 1#32
  let v1009 : Index := Scalar.indexCast c1_i32_828
  let c0_i32_829 : BitVec 32 := 0#32
  let v1010 : Index := Scalar.indexCast c0_i32_829
  let c0_i32_602 : BitVec 32 := 0#32
  let c1_i32_604 : BitVec 32 := 1#32
  let arg15 : BitVec 32 := Scf.iv c0_i32_602 c1_i32_604 k0_t5
  let v1011 : Index := Scalar.indexCast arg15
  let c400_830 : Index := 400#32
  ![1, 0, v1011.toNat, 400]
def k0_off1855 (k0_t5 : Fin k0_t5_loop.trips) : Fin 4 → Nat :=
  let c3_i32_831 : BitVec 32 := 3#32
  let v1015 : Index := Scalar.indexCast c3_i32_831
  let c0_i32_832 : BitVec 32 := 0#32
  let v1016 : Index := Scalar.indexCast c0_i32_832
  let c0_i32_602 : BitVec 32 := 0#32
  let c1_i32_604 : BitVec 32 := 1#32
  let arg15 : BitVec 32 := Scf.iv c0_i32_602 c1_i32_604 k0_t5
  let v1017 : Index := Scalar.indexCast arg15
  let c416_833 : Index := 416#32
  ![3, 0, v1017.toNat, 416]
def k0_off1856 (k0_t5 : Fin k0_t5_loop.trips) : Fin 4 → Nat :=
  let c1_i32_834 : BitVec 32 := 1#32
  let v1021 : Index := Scalar.indexCast c1_i32_834
  let c0_i32_835 : BitVec 32 := 0#32
  let v1022 : Index := Scalar.indexCast c0_i32_835
  let c0_i32_602 : BitVec 32 := 0#32
  let c1_i32_604 : BitVec 32 := 1#32
  let arg15 : BitVec 32 := Scf.iv c0_i32_602 c1_i32_604 k0_t5
  let v1023 : Index := Scalar.indexCast arg15
  let c416_836 : Index := 416#32
  ![1, 0, v1023.toNat, 416]
def k0_off1857 (k0_t5 : Fin k0_t5_loop.trips) : Fin 4 → Nat :=
  let c3_i32_837 : BitVec 32 := 3#32
  let v1027 : Index := Scalar.indexCast c3_i32_837
  let c0_i32_838 : BitVec 32 := 0#32
  let v1028 : Index := Scalar.indexCast c0_i32_838
  let c0_i32_602 : BitVec 32 := 0#32
  let c1_i32_604 : BitVec 32 := 1#32
  let arg15 : BitVec 32 := Scf.iv c0_i32_602 c1_i32_604 k0_t5
  let v1029 : Index := Scalar.indexCast arg15
  let c432_839 : Index := 432#32
  ![3, 0, v1029.toNat, 432]
def k0_off1858 (k0_t5 : Fin k0_t5_loop.trips) : Fin 4 → Nat :=
  let c1_i32_840 : BitVec 32 := 1#32
  let v1033 : Index := Scalar.indexCast c1_i32_840
  let c0_i32_841 : BitVec 32 := 0#32
  let v1034 : Index := Scalar.indexCast c0_i32_841
  let c0_i32_602 : BitVec 32 := 0#32
  let c1_i32_604 : BitVec 32 := 1#32
  let arg15 : BitVec 32 := Scf.iv c0_i32_602 c1_i32_604 k0_t5
  let v1035 : Index := Scalar.indexCast arg15
  let c432_842 : Index := 432#32
  ![1, 0, v1035.toNat, 432]
def k0_off1859 (k0_t5 : Fin k0_t5_loop.trips) : Fin 4 → Nat :=
  let c3_i32_843 : BitVec 32 := 3#32
  let v1039 : Index := Scalar.indexCast c3_i32_843
  let c0_i32_844 : BitVec 32 := 0#32
  let v1040 : Index := Scalar.indexCast c0_i32_844
  let c0_i32_602 : BitVec 32 := 0#32
  let c1_i32_604 : BitVec 32 := 1#32
  let arg15 : BitVec 32 := Scf.iv c0_i32_602 c1_i32_604 k0_t5
  let v1041 : Index := Scalar.indexCast arg15
  let c448_845 : Index := 448#32
  ![3, 0, v1041.toNat, 448]
def k0_off1860 (k0_t5 : Fin k0_t5_loop.trips) : Fin 4 → Nat :=
  let c1_i32_846 : BitVec 32 := 1#32
  let v1045 : Index := Scalar.indexCast c1_i32_846
  let c0_i32_847 : BitVec 32 := 0#32
  let v1046 : Index := Scalar.indexCast c0_i32_847
  let c0_i32_602 : BitVec 32 := 0#32
  let c1_i32_604 : BitVec 32 := 1#32
  let arg15 : BitVec 32 := Scf.iv c0_i32_602 c1_i32_604 k0_t5
  let v1047 : Index := Scalar.indexCast arg15
  let c448_848 : Index := 448#32
  ![1, 0, v1047.toNat, 448]
def k0_off1861 (k0_t5 : Fin k0_t5_loop.trips) : Fin 4 → Nat :=
  let c3_i32_849 : BitVec 32 := 3#32
  let v1051 : Index := Scalar.indexCast c3_i32_849
  let c0_i32_850 : BitVec 32 := 0#32
  let v1052 : Index := Scalar.indexCast c0_i32_850
  let c0_i32_602 : BitVec 32 := 0#32
  let c1_i32_604 : BitVec 32 := 1#32
  let arg15 : BitVec 32 := Scf.iv c0_i32_602 c1_i32_604 k0_t5
  let v1053 : Index := Scalar.indexCast arg15
  let c464_851 : Index := 464#32
  ![3, 0, v1053.toNat, 464]
def k0_off1862 (k0_t5 : Fin k0_t5_loop.trips) : Fin 4 → Nat :=
  let c1_i32_852 : BitVec 32 := 1#32
  let v1057 : Index := Scalar.indexCast c1_i32_852
  let c0_i32_853 : BitVec 32 := 0#32
  let v1058 : Index := Scalar.indexCast c0_i32_853
  let c0_i32_602 : BitVec 32 := 0#32
  let c1_i32_604 : BitVec 32 := 1#32
  let arg15 : BitVec 32 := Scf.iv c0_i32_602 c1_i32_604 k0_t5
  let v1059 : Index := Scalar.indexCast arg15
  let c464_854 : Index := 464#32
  ![1, 0, v1059.toNat, 464]
def k0_off1863 (k0_t5 : Fin k0_t5_loop.trips) : Fin 4 → Nat :=
  let c3_i32_855 : BitVec 32 := 3#32
  let v1063 : Index := Scalar.indexCast c3_i32_855
  let c0_i32_856 : BitVec 32 := 0#32
  let v1064 : Index := Scalar.indexCast c0_i32_856
  let c0_i32_602 : BitVec 32 := 0#32
  let c1_i32_604 : BitVec 32 := 1#32
  let arg15 : BitVec 32 := Scf.iv c0_i32_602 c1_i32_604 k0_t5
  let v1065 : Index := Scalar.indexCast arg15
  let c480_857 : Index := 480#32
  ![3, 0, v1065.toNat, 480]
def k0_off1864 (k0_t5 : Fin k0_t5_loop.trips) : Fin 4 → Nat :=
  let c1_i32_858 : BitVec 32 := 1#32
  let v1069 : Index := Scalar.indexCast c1_i32_858
  let c0_i32_859 : BitVec 32 := 0#32
  let v1070 : Index := Scalar.indexCast c0_i32_859
  let c0_i32_602 : BitVec 32 := 0#32
  let c1_i32_604 : BitVec 32 := 1#32
  let arg15 : BitVec 32 := Scf.iv c0_i32_602 c1_i32_604 k0_t5
  let v1071 : Index := Scalar.indexCast arg15
  let c480_860 : Index := 480#32
  ![1, 0, v1071.toNat, 480]
def k0_off1865 (k0_t5 : Fin k0_t5_loop.trips) : Fin 4 → Nat :=
  let c3_i32_861 : BitVec 32 := 3#32
  let v1075 : Index := Scalar.indexCast c3_i32_861
  let c0_i32_862 : BitVec 32 := 0#32
  let v1076 : Index := Scalar.indexCast c0_i32_862
  let c0_i32_602 : BitVec 32 := 0#32
  let c1_i32_604 : BitVec 32 := 1#32
  let arg15 : BitVec 32 := Scf.iv c0_i32_602 c1_i32_604 k0_t5
  let v1077 : Index := Scalar.indexCast arg15
  let c496_863 : Index := 496#32
  ![3, 0, v1077.toNat, 496]
def k0_off1866 (k0_t5 : Fin k0_t5_loop.trips) : Fin 4 → Nat :=
  let c1_i32_864 : BitVec 32 := 1#32
  let v1081 : Index := Scalar.indexCast c1_i32_864
  let c0_i32_865 : BitVec 32 := 0#32
  let v1082 : Index := Scalar.indexCast c0_i32_865
  let c0_i32_602 : BitVec 32 := 0#32
  let c1_i32_604 : BitVec 32 := 1#32
  let arg15 : BitVec 32 := Scf.iv c0_i32_602 c1_i32_604 k0_t5
  let v1083 : Index := Scalar.indexCast arg15
  let c496_866 : Index := 496#32
  ![1, 0, v1083.toNat, 496]
def k0_off1867 (k0_t5 : Fin k0_t5_loop.trips) : Fin 4 → Nat :=
  let c3_i32_867 : BitVec 32 := 3#32
  let v1087 : Index := Scalar.indexCast c3_i32_867
  let c1_i32_868 : BitVec 32 := 1#32
  let v1088 : Index := Scalar.indexCast c1_i32_868
  let c0_i32_602 : BitVec 32 := 0#32
  let c1_i32_604 : BitVec 32 := 1#32
  let arg15 : BitVec 32 := Scf.iv c0_i32_602 c1_i32_604 k0_t5
  let v1089 : Index := Scalar.indexCast arg15
  let c0_869 : Index := 0#32
  ![3, 1, v1089.toNat, 0]
def k0_off1868 (k0_t5 : Fin k0_t5_loop.trips) : Fin 4 → Nat :=
  let c1_i32_870 : BitVec 32 := 1#32
  let v1093 : Index := Scalar.indexCast c1_i32_870
  let c1_i32_871 : BitVec 32 := 1#32
  let v1094 : Index := Scalar.indexCast c1_i32_871
  let c0_i32_602 : BitVec 32 := 0#32
  let c1_i32_604 : BitVec 32 := 1#32
  let arg15 : BitVec 32 := Scf.iv c0_i32_602 c1_i32_604 k0_t5
  let v1095 : Index := Scalar.indexCast arg15
  let c0_872 : Index := 0#32
  ![1, 1, v1095.toNat, 0]
def k0_off1869 (k0_t5 : Fin k0_t5_loop.trips) : Fin 4 → Nat :=
  let c3_i32_873 : BitVec 32 := 3#32
  let v1099 : Index := Scalar.indexCast c3_i32_873
  let c1_i32_874 : BitVec 32 := 1#32
  let v1100 : Index := Scalar.indexCast c1_i32_874
  let c0_i32_602 : BitVec 32 := 0#32
  let c1_i32_604 : BitVec 32 := 1#32
  let arg15 : BitVec 32 := Scf.iv c0_i32_602 c1_i32_604 k0_t5
  let v1101 : Index := Scalar.indexCast arg15
  let c16_875 : Index := 16#32
  ![3, 1, v1101.toNat, 16]
def k0_off1870 (k0_t5 : Fin k0_t5_loop.trips) : Fin 4 → Nat :=
  let c1_i32_876 : BitVec 32 := 1#32
  let v1105 : Index := Scalar.indexCast c1_i32_876
  let c1_i32_877 : BitVec 32 := 1#32
  let v1106 : Index := Scalar.indexCast c1_i32_877
  let c0_i32_602 : BitVec 32 := 0#32
  let c1_i32_604 : BitVec 32 := 1#32
  let arg15 : BitVec 32 := Scf.iv c0_i32_602 c1_i32_604 k0_t5
  let v1107 : Index := Scalar.indexCast arg15
  let c16_878 : Index := 16#32
  ![1, 1, v1107.toNat, 16]
def k0_off1871 (k0_t5 : Fin k0_t5_loop.trips) : Fin 4 → Nat :=
  let c3_i32_879 : BitVec 32 := 3#32
  let v1111 : Index := Scalar.indexCast c3_i32_879
  let c1_i32_880 : BitVec 32 := 1#32
  let v1112 : Index := Scalar.indexCast c1_i32_880
  let c0_i32_602 : BitVec 32 := 0#32
  let c1_i32_604 : BitVec 32 := 1#32
  let arg15 : BitVec 32 := Scf.iv c0_i32_602 c1_i32_604 k0_t5
  let v1113 : Index := Scalar.indexCast arg15
  let c32_881 : Index := 32#32
  ![3, 1, v1113.toNat, 32]
def k0_off1872 (k0_t5 : Fin k0_t5_loop.trips) : Fin 4 → Nat :=
  let c1_i32_882 : BitVec 32 := 1#32
  let v1117 : Index := Scalar.indexCast c1_i32_882
  let c1_i32_883 : BitVec 32 := 1#32
  let v1118 : Index := Scalar.indexCast c1_i32_883
  let c0_i32_602 : BitVec 32 := 0#32
  let c1_i32_604 : BitVec 32 := 1#32
  let arg15 : BitVec 32 := Scf.iv c0_i32_602 c1_i32_604 k0_t5
  let v1119 : Index := Scalar.indexCast arg15
  let c32_884 : Index := 32#32
  ![1, 1, v1119.toNat, 32]
def k0_off1873 (k0_t5 : Fin k0_t5_loop.trips) : Fin 4 → Nat :=
  let c3_i32_885 : BitVec 32 := 3#32
  let v1123 : Index := Scalar.indexCast c3_i32_885
  let c1_i32_886 : BitVec 32 := 1#32
  let v1124 : Index := Scalar.indexCast c1_i32_886
  let c0_i32_602 : BitVec 32 := 0#32
  let c1_i32_604 : BitVec 32 := 1#32
  let arg15 : BitVec 32 := Scf.iv c0_i32_602 c1_i32_604 k0_t5
  let v1125 : Index := Scalar.indexCast arg15
  let c48_887 : Index := 48#32
  ![3, 1, v1125.toNat, 48]
def k0_off1874 (k0_t5 : Fin k0_t5_loop.trips) : Fin 4 → Nat :=
  let c1_i32_888 : BitVec 32 := 1#32
  let v1129 : Index := Scalar.indexCast c1_i32_888
  let c1_i32_889 : BitVec 32 := 1#32
  let v1130 : Index := Scalar.indexCast c1_i32_889
  let c0_i32_602 : BitVec 32 := 0#32
  let c1_i32_604 : BitVec 32 := 1#32
  let arg15 : BitVec 32 := Scf.iv c0_i32_602 c1_i32_604 k0_t5
  let v1131 : Index := Scalar.indexCast arg15
  let c48_890 : Index := 48#32
  ![1, 1, v1131.toNat, 48]
def k0_off1875 (k0_t5 : Fin k0_t5_loop.trips) : Fin 4 → Nat :=
  let c3_i32_891 : BitVec 32 := 3#32
  let v1135 : Index := Scalar.indexCast c3_i32_891
  let c1_i32_892 : BitVec 32 := 1#32
  let v1136 : Index := Scalar.indexCast c1_i32_892
  let c0_i32_602 : BitVec 32 := 0#32
  let c1_i32_604 : BitVec 32 := 1#32
  let arg15 : BitVec 32 := Scf.iv c0_i32_602 c1_i32_604 k0_t5
  let v1137 : Index := Scalar.indexCast arg15
  let c64_893 : Index := 64#32
  ![3, 1, v1137.toNat, 64]
def k0_off1876 (k0_t5 : Fin k0_t5_loop.trips) : Fin 4 → Nat :=
  let c1_i32_894 : BitVec 32 := 1#32
  let v1141 : Index := Scalar.indexCast c1_i32_894
  let c1_i32_895 : BitVec 32 := 1#32
  let v1142 : Index := Scalar.indexCast c1_i32_895
  let c0_i32_602 : BitVec 32 := 0#32
  let c1_i32_604 : BitVec 32 := 1#32
  let arg15 : BitVec 32 := Scf.iv c0_i32_602 c1_i32_604 k0_t5
  let v1143 : Index := Scalar.indexCast arg15
  let c64_896 : Index := 64#32
  ![1, 1, v1143.toNat, 64]
def k0_off1877 (k0_t5 : Fin k0_t5_loop.trips) : Fin 4 → Nat :=
  let c3_i32_897 : BitVec 32 := 3#32
  let v1147 : Index := Scalar.indexCast c3_i32_897
  let c1_i32_898 : BitVec 32 := 1#32
  let v1148 : Index := Scalar.indexCast c1_i32_898
  let c0_i32_602 : BitVec 32 := 0#32
  let c1_i32_604 : BitVec 32 := 1#32
  let arg15 : BitVec 32 := Scf.iv c0_i32_602 c1_i32_604 k0_t5
  let v1149 : Index := Scalar.indexCast arg15
  let c80_899 : Index := 80#32
  ![3, 1, v1149.toNat, 80]
def k0_off1878 (k0_t5 : Fin k0_t5_loop.trips) : Fin 4 → Nat :=
  let c1_i32_900 : BitVec 32 := 1#32
  let v1153 : Index := Scalar.indexCast c1_i32_900
  let c1_i32_901 : BitVec 32 := 1#32
  let v1154 : Index := Scalar.indexCast c1_i32_901
  let c0_i32_602 : BitVec 32 := 0#32
  let c1_i32_604 : BitVec 32 := 1#32
  let arg15 : BitVec 32 := Scf.iv c0_i32_602 c1_i32_604 k0_t5
  let v1155 : Index := Scalar.indexCast arg15
  let c80_902 : Index := 80#32
  ![1, 1, v1155.toNat, 80]
def k0_off1879 (k0_t5 : Fin k0_t5_loop.trips) : Fin 4 → Nat :=
  let c3_i32_903 : BitVec 32 := 3#32
  let v1159 : Index := Scalar.indexCast c3_i32_903
  let c1_i32_904 : BitVec 32 := 1#32
  let v1160 : Index := Scalar.indexCast c1_i32_904
  let c0_i32_602 : BitVec 32 := 0#32
  let c1_i32_604 : BitVec 32 := 1#32
  let arg15 : BitVec 32 := Scf.iv c0_i32_602 c1_i32_604 k0_t5
  let v1161 : Index := Scalar.indexCast arg15
  let c96_905 : Index := 96#32
  ![3, 1, v1161.toNat, 96]
def k0_off1880 (k0_t5 : Fin k0_t5_loop.trips) : Fin 4 → Nat :=
  let c1_i32_906 : BitVec 32 := 1#32
  let v1165 : Index := Scalar.indexCast c1_i32_906
  let c1_i32_907 : BitVec 32 := 1#32
  let v1166 : Index := Scalar.indexCast c1_i32_907
  let c0_i32_602 : BitVec 32 := 0#32
  let c1_i32_604 : BitVec 32 := 1#32
  let arg15 : BitVec 32 := Scf.iv c0_i32_602 c1_i32_604 k0_t5
  let v1167 : Index := Scalar.indexCast arg15
  let c96_908 : Index := 96#32
  ![1, 1, v1167.toNat, 96]
def k0_off1881 (k0_t5 : Fin k0_t5_loop.trips) : Fin 4 → Nat :=
  let c3_i32_909 : BitVec 32 := 3#32
  let v1171 : Index := Scalar.indexCast c3_i32_909
  let c1_i32_910 : BitVec 32 := 1#32
  let v1172 : Index := Scalar.indexCast c1_i32_910
  let c0_i32_602 : BitVec 32 := 0#32
  let c1_i32_604 : BitVec 32 := 1#32
  let arg15 : BitVec 32 := Scf.iv c0_i32_602 c1_i32_604 k0_t5
  let v1173 : Index := Scalar.indexCast arg15
  let c112_911 : Index := 112#32
  ![3, 1, v1173.toNat, 112]
def k0_off1882 (k0_t5 : Fin k0_t5_loop.trips) : Fin 4 → Nat :=
  let c1_i32_912 : BitVec 32 := 1#32
  let v1177 : Index := Scalar.indexCast c1_i32_912
  let c1_i32_913 : BitVec 32 := 1#32
  let v1178 : Index := Scalar.indexCast c1_i32_913
  let c0_i32_602 : BitVec 32 := 0#32
  let c1_i32_604 : BitVec 32 := 1#32
  let arg15 : BitVec 32 := Scf.iv c0_i32_602 c1_i32_604 k0_t5
  let v1179 : Index := Scalar.indexCast arg15
  let c112_914 : Index := 112#32
  ![1, 1, v1179.toNat, 112]
def k0_off1883 (k0_t5 : Fin k0_t5_loop.trips) : Fin 4 → Nat :=
  let c3_i32_915 : BitVec 32 := 3#32
  let v1183 : Index := Scalar.indexCast c3_i32_915
  let c1_i32_916 : BitVec 32 := 1#32
  let v1184 : Index := Scalar.indexCast c1_i32_916
  let c0_i32_602 : BitVec 32 := 0#32
  let c1_i32_604 : BitVec 32 := 1#32
  let arg15 : BitVec 32 := Scf.iv c0_i32_602 c1_i32_604 k0_t5
  let v1185 : Index := Scalar.indexCast arg15
  let c128_917 : Index := 128#32
  ![3, 1, v1185.toNat, 128]
def k0_off1884 (k0_t5 : Fin k0_t5_loop.trips) : Fin 4 → Nat :=
  let c1_i32_918 : BitVec 32 := 1#32
  let v1189 : Index := Scalar.indexCast c1_i32_918
  let c1_i32_919 : BitVec 32 := 1#32
  let v1190 : Index := Scalar.indexCast c1_i32_919
  let c0_i32_602 : BitVec 32 := 0#32
  let c1_i32_604 : BitVec 32 := 1#32
  let arg15 : BitVec 32 := Scf.iv c0_i32_602 c1_i32_604 k0_t5
  let v1191 : Index := Scalar.indexCast arg15
  let c128_920 : Index := 128#32
  ![1, 1, v1191.toNat, 128]
def k0_off1885 (k0_t5 : Fin k0_t5_loop.trips) : Fin 4 → Nat :=
  let c3_i32_921 : BitVec 32 := 3#32
  let v1195 : Index := Scalar.indexCast c3_i32_921
  let c1_i32_922 : BitVec 32 := 1#32
  let v1196 : Index := Scalar.indexCast c1_i32_922
  let c0_i32_602 : BitVec 32 := 0#32
  let c1_i32_604 : BitVec 32 := 1#32
  let arg15 : BitVec 32 := Scf.iv c0_i32_602 c1_i32_604 k0_t5
  let v1197 : Index := Scalar.indexCast arg15
  let c144_923 : Index := 144#32
  ![3, 1, v1197.toNat, 144]
def k0_off1886 (k0_t5 : Fin k0_t5_loop.trips) : Fin 4 → Nat :=
  let c1_i32_924 : BitVec 32 := 1#32
  let v1201 : Index := Scalar.indexCast c1_i32_924
  let c1_i32_925 : BitVec 32 := 1#32
  let v1202 : Index := Scalar.indexCast c1_i32_925
  let c0_i32_602 : BitVec 32 := 0#32
  let c1_i32_604 : BitVec 32 := 1#32
  let arg15 : BitVec 32 := Scf.iv c0_i32_602 c1_i32_604 k0_t5
  let v1203 : Index := Scalar.indexCast arg15
  let c144_926 : Index := 144#32
  ![1, 1, v1203.toNat, 144]
def k0_off1887 (k0_t5 : Fin k0_t5_loop.trips) : Fin 4 → Nat :=
  let c3_i32_927 : BitVec 32 := 3#32
  let v1207 : Index := Scalar.indexCast c3_i32_927
  let c1_i32_928 : BitVec 32 := 1#32
  let v1208 : Index := Scalar.indexCast c1_i32_928
  let c0_i32_602 : BitVec 32 := 0#32
  let c1_i32_604 : BitVec 32 := 1#32
  let arg15 : BitVec 32 := Scf.iv c0_i32_602 c1_i32_604 k0_t5
  let v1209 : Index := Scalar.indexCast arg15
  let c160_929 : Index := 160#32
  ![3, 1, v1209.toNat, 160]
def k0_off1888 (k0_t5 : Fin k0_t5_loop.trips) : Fin 4 → Nat :=
  let c1_i32_930 : BitVec 32 := 1#32
  let v1213 : Index := Scalar.indexCast c1_i32_930
  let c1_i32_931 : BitVec 32 := 1#32
  let v1214 : Index := Scalar.indexCast c1_i32_931
  let c0_i32_602 : BitVec 32 := 0#32
  let c1_i32_604 : BitVec 32 := 1#32
  let arg15 : BitVec 32 := Scf.iv c0_i32_602 c1_i32_604 k0_t5
  let v1215 : Index := Scalar.indexCast arg15
  let c160_932 : Index := 160#32
  ![1, 1, v1215.toNat, 160]
def k0_off1889 (k0_t5 : Fin k0_t5_loop.trips) : Fin 4 → Nat :=
  let c3_i32_933 : BitVec 32 := 3#32
  let v1219 : Index := Scalar.indexCast c3_i32_933
  let c1_i32_934 : BitVec 32 := 1#32
  let v1220 : Index := Scalar.indexCast c1_i32_934
  let c0_i32_602 : BitVec 32 := 0#32
  let c1_i32_604 : BitVec 32 := 1#32
  let arg15 : BitVec 32 := Scf.iv c0_i32_602 c1_i32_604 k0_t5
  let v1221 : Index := Scalar.indexCast arg15
  let c176_935 : Index := 176#32
  ![3, 1, v1221.toNat, 176]
def k0_off1890 (k0_t5 : Fin k0_t5_loop.trips) : Fin 4 → Nat :=
  let c1_i32_936 : BitVec 32 := 1#32
  let v1225 : Index := Scalar.indexCast c1_i32_936
  let c1_i32_937 : BitVec 32 := 1#32
  let v1226 : Index := Scalar.indexCast c1_i32_937
  let c0_i32_602 : BitVec 32 := 0#32
  let c1_i32_604 : BitVec 32 := 1#32
  let arg15 : BitVec 32 := Scf.iv c0_i32_602 c1_i32_604 k0_t5
  let v1227 : Index := Scalar.indexCast arg15
  let c176_938 : Index := 176#32
  ![1, 1, v1227.toNat, 176]
def k0_off1891 (k0_t5 : Fin k0_t5_loop.trips) : Fin 4 → Nat :=
  let c3_i32_939 : BitVec 32 := 3#32
  let v1231 : Index := Scalar.indexCast c3_i32_939
  let c1_i32_940 : BitVec 32 := 1#32
  let v1232 : Index := Scalar.indexCast c1_i32_940
  let c0_i32_602 : BitVec 32 := 0#32
  let c1_i32_604 : BitVec 32 := 1#32
  let arg15 : BitVec 32 := Scf.iv c0_i32_602 c1_i32_604 k0_t5
  let v1233 : Index := Scalar.indexCast arg15
  let c192_941 : Index := 192#32
  ![3, 1, v1233.toNat, 192]
def k0_off1892 (k0_t5 : Fin k0_t5_loop.trips) : Fin 4 → Nat :=
  let c1_i32_942 : BitVec 32 := 1#32
  let v1237 : Index := Scalar.indexCast c1_i32_942
  let c1_i32_943 : BitVec 32 := 1#32
  let v1238 : Index := Scalar.indexCast c1_i32_943
  let c0_i32_602 : BitVec 32 := 0#32
  let c1_i32_604 : BitVec 32 := 1#32
  let arg15 : BitVec 32 := Scf.iv c0_i32_602 c1_i32_604 k0_t5
  let v1239 : Index := Scalar.indexCast arg15
  let c192_944 : Index := 192#32
  ![1, 1, v1239.toNat, 192]
def k0_off1893 (k0_t5 : Fin k0_t5_loop.trips) : Fin 4 → Nat :=
  let c3_i32_945 : BitVec 32 := 3#32
  let v1243 : Index := Scalar.indexCast c3_i32_945
  let c1_i32_946 : BitVec 32 := 1#32
  let v1244 : Index := Scalar.indexCast c1_i32_946
  let c0_i32_602 : BitVec 32 := 0#32
  let c1_i32_604 : BitVec 32 := 1#32
  let arg15 : BitVec 32 := Scf.iv c0_i32_602 c1_i32_604 k0_t5
  let v1245 : Index := Scalar.indexCast arg15
  let c208_947 : Index := 208#32
  ![3, 1, v1245.toNat, 208]
def k0_off1894 (k0_t5 : Fin k0_t5_loop.trips) : Fin 4 → Nat :=
  let c1_i32_948 : BitVec 32 := 1#32
  let v1249 : Index := Scalar.indexCast c1_i32_948
  let c1_i32_949 : BitVec 32 := 1#32
  let v1250 : Index := Scalar.indexCast c1_i32_949
  let c0_i32_602 : BitVec 32 := 0#32
  let c1_i32_604 : BitVec 32 := 1#32
  let arg15 : BitVec 32 := Scf.iv c0_i32_602 c1_i32_604 k0_t5
  let v1251 : Index := Scalar.indexCast arg15
  let c208_950 : Index := 208#32
  ![1, 1, v1251.toNat, 208]
def k0_off1895 (k0_t5 : Fin k0_t5_loop.trips) : Fin 4 → Nat :=
  let c3_i32_951 : BitVec 32 := 3#32
  let v1255 : Index := Scalar.indexCast c3_i32_951
  let c1_i32_952 : BitVec 32 := 1#32
  let v1256 : Index := Scalar.indexCast c1_i32_952
  let c0_i32_602 : BitVec 32 := 0#32
  let c1_i32_604 : BitVec 32 := 1#32
  let arg15 : BitVec 32 := Scf.iv c0_i32_602 c1_i32_604 k0_t5
  let v1257 : Index := Scalar.indexCast arg15
  let c224_953 : Index := 224#32
  ![3, 1, v1257.toNat, 224]
def k0_off1896 (k0_t5 : Fin k0_t5_loop.trips) : Fin 4 → Nat :=
  let c1_i32_954 : BitVec 32 := 1#32
  let v1261 : Index := Scalar.indexCast c1_i32_954
  let c1_i32_955 : BitVec 32 := 1#32
  let v1262 : Index := Scalar.indexCast c1_i32_955
  let c0_i32_602 : BitVec 32 := 0#32
  let c1_i32_604 : BitVec 32 := 1#32
  let arg15 : BitVec 32 := Scf.iv c0_i32_602 c1_i32_604 k0_t5
  let v1263 : Index := Scalar.indexCast arg15
  let c224_956 : Index := 224#32
  ![1, 1, v1263.toNat, 224]
def k0_off1897 (k0_t5 : Fin k0_t5_loop.trips) : Fin 4 → Nat :=
  let c3_i32_957 : BitVec 32 := 3#32
  let v1267 : Index := Scalar.indexCast c3_i32_957
  let c1_i32_958 : BitVec 32 := 1#32
  let v1268 : Index := Scalar.indexCast c1_i32_958
  let c0_i32_602 : BitVec 32 := 0#32
  let c1_i32_604 : BitVec 32 := 1#32
  let arg15 : BitVec 32 := Scf.iv c0_i32_602 c1_i32_604 k0_t5
  let v1269 : Index := Scalar.indexCast arg15
  let c240_959 : Index := 240#32
  ![3, 1, v1269.toNat, 240]
def k0_off1898 (k0_t5 : Fin k0_t5_loop.trips) : Fin 4 → Nat :=
  let c1_i32_960 : BitVec 32 := 1#32
  let v1273 : Index := Scalar.indexCast c1_i32_960
  let c1_i32_961 : BitVec 32 := 1#32
  let v1274 : Index := Scalar.indexCast c1_i32_961
  let c0_i32_602 : BitVec 32 := 0#32
  let c1_i32_604 : BitVec 32 := 1#32
  let arg15 : BitVec 32 := Scf.iv c0_i32_602 c1_i32_604 k0_t5
  let v1275 : Index := Scalar.indexCast arg15
  let c240_962 : Index := 240#32
  ![1, 1, v1275.toNat, 240]
def k0_off1899 (k0_t5 : Fin k0_t5_loop.trips) : Fin 4 → Nat :=
  let c3_i32_963 : BitVec 32 := 3#32
  let v1279 : Index := Scalar.indexCast c3_i32_963
  let c1_i32_964 : BitVec 32 := 1#32
  let v1280 : Index := Scalar.indexCast c1_i32_964
  let c0_i32_602 : BitVec 32 := 0#32
  let c1_i32_604 : BitVec 32 := 1#32
  let arg15 : BitVec 32 := Scf.iv c0_i32_602 c1_i32_604 k0_t5
  let v1281 : Index := Scalar.indexCast arg15
  let c256_965 : Index := 256#32
  ![3, 1, v1281.toNat, 256]
def k0_off1900 (k0_t5 : Fin k0_t5_loop.trips) : Fin 4 → Nat :=
  let c1_i32_966 : BitVec 32 := 1#32
  let v1285 : Index := Scalar.indexCast c1_i32_966
  let c1_i32_967 : BitVec 32 := 1#32
  let v1286 : Index := Scalar.indexCast c1_i32_967
  let c0_i32_602 : BitVec 32 := 0#32
  let c1_i32_604 : BitVec 32 := 1#32
  let arg15 : BitVec 32 := Scf.iv c0_i32_602 c1_i32_604 k0_t5
  let v1287 : Index := Scalar.indexCast arg15
  let c256_968 : Index := 256#32
  ![1, 1, v1287.toNat, 256]
def k0_off1901 (k0_t5 : Fin k0_t5_loop.trips) : Fin 4 → Nat :=
  let c3_i32_969 : BitVec 32 := 3#32
  let v1291 : Index := Scalar.indexCast c3_i32_969
  let c1_i32_970 : BitVec 32 := 1#32
  let v1292 : Index := Scalar.indexCast c1_i32_970
  let c0_i32_602 : BitVec 32 := 0#32
  let c1_i32_604 : BitVec 32 := 1#32
  let arg15 : BitVec 32 := Scf.iv c0_i32_602 c1_i32_604 k0_t5
  let v1293 : Index := Scalar.indexCast arg15
  let c272_971 : Index := 272#32
  ![3, 1, v1293.toNat, 272]
def k0_off1902 (k0_t5 : Fin k0_t5_loop.trips) : Fin 4 → Nat :=
  let c1_i32_972 : BitVec 32 := 1#32
  let v1297 : Index := Scalar.indexCast c1_i32_972
  let c1_i32_973 : BitVec 32 := 1#32
  let v1298 : Index := Scalar.indexCast c1_i32_973
  let c0_i32_602 : BitVec 32 := 0#32
  let c1_i32_604 : BitVec 32 := 1#32
  let arg15 : BitVec 32 := Scf.iv c0_i32_602 c1_i32_604 k0_t5
  let v1299 : Index := Scalar.indexCast arg15
  let c272_974 : Index := 272#32
  ![1, 1, v1299.toNat, 272]
def k0_off1903 (k0_t5 : Fin k0_t5_loop.trips) : Fin 4 → Nat :=
  let c3_i32_975 : BitVec 32 := 3#32
  let v1303 : Index := Scalar.indexCast c3_i32_975
  let c1_i32_976 : BitVec 32 := 1#32
  let v1304 : Index := Scalar.indexCast c1_i32_976
  let c0_i32_602 : BitVec 32 := 0#32
  let c1_i32_604 : BitVec 32 := 1#32
  let arg15 : BitVec 32 := Scf.iv c0_i32_602 c1_i32_604 k0_t5
  let v1305 : Index := Scalar.indexCast arg15
  let c288_977 : Index := 288#32
  ![3, 1, v1305.toNat, 288]
def k0_off1904 (k0_t5 : Fin k0_t5_loop.trips) : Fin 4 → Nat :=
  let c1_i32_978 : BitVec 32 := 1#32
  let v1309 : Index := Scalar.indexCast c1_i32_978
  let c1_i32_979 : BitVec 32 := 1#32
  let v1310 : Index := Scalar.indexCast c1_i32_979
  let c0_i32_602 : BitVec 32 := 0#32
  let c1_i32_604 : BitVec 32 := 1#32
  let arg15 : BitVec 32 := Scf.iv c0_i32_602 c1_i32_604 k0_t5
  let v1311 : Index := Scalar.indexCast arg15
  let c288_980 : Index := 288#32
  ![1, 1, v1311.toNat, 288]
def k0_off1905 (k0_t5 : Fin k0_t5_loop.trips) : Fin 4 → Nat :=
  let c3_i32_981 : BitVec 32 := 3#32
  let v1315 : Index := Scalar.indexCast c3_i32_981
  let c1_i32_982 : BitVec 32 := 1#32
  let v1316 : Index := Scalar.indexCast c1_i32_982
  let c0_i32_602 : BitVec 32 := 0#32
  let c1_i32_604 : BitVec 32 := 1#32
  let arg15 : BitVec 32 := Scf.iv c0_i32_602 c1_i32_604 k0_t5
  let v1317 : Index := Scalar.indexCast arg15
  let c304_983 : Index := 304#32
  ![3, 1, v1317.toNat, 304]
def k0_off1906 (k0_t5 : Fin k0_t5_loop.trips) : Fin 4 → Nat :=
  let c1_i32_984 : BitVec 32 := 1#32
  let v1321 : Index := Scalar.indexCast c1_i32_984
  let c1_i32_985 : BitVec 32 := 1#32
  let v1322 : Index := Scalar.indexCast c1_i32_985
  let c0_i32_602 : BitVec 32 := 0#32
  let c1_i32_604 : BitVec 32 := 1#32
  let arg15 : BitVec 32 := Scf.iv c0_i32_602 c1_i32_604 k0_t5
  let v1323 : Index := Scalar.indexCast arg15
  let c304_986 : Index := 304#32
  ![1, 1, v1323.toNat, 304]
def k0_off1907 (k0_t5 : Fin k0_t5_loop.trips) : Fin 4 → Nat :=
  let c3_i32_987 : BitVec 32 := 3#32
  let v1327 : Index := Scalar.indexCast c3_i32_987
  let c1_i32_988 : BitVec 32 := 1#32
  let v1328 : Index := Scalar.indexCast c1_i32_988
  let c0_i32_602 : BitVec 32 := 0#32
  let c1_i32_604 : BitVec 32 := 1#32
  let arg15 : BitVec 32 := Scf.iv c0_i32_602 c1_i32_604 k0_t5
  let v1329 : Index := Scalar.indexCast arg15
  let c320_989 : Index := 320#32
  ![3, 1, v1329.toNat, 320]
def k0_off1908 (k0_t5 : Fin k0_t5_loop.trips) : Fin 4 → Nat :=
  let c1_i32_990 : BitVec 32 := 1#32
  let v1333 : Index := Scalar.indexCast c1_i32_990
  let c1_i32_991 : BitVec 32 := 1#32
  let v1334 : Index := Scalar.indexCast c1_i32_991
  let c0_i32_602 : BitVec 32 := 0#32
  let c1_i32_604 : BitVec 32 := 1#32
  let arg15 : BitVec 32 := Scf.iv c0_i32_602 c1_i32_604 k0_t5
  let v1335 : Index := Scalar.indexCast arg15
  let c320_992 : Index := 320#32
  ![1, 1, v1335.toNat, 320]
def k0_off1909 (k0_t5 : Fin k0_t5_loop.trips) : Fin 4 → Nat :=
  let c3_i32_993 : BitVec 32 := 3#32
  let v1339 : Index := Scalar.indexCast c3_i32_993
  let c1_i32_994 : BitVec 32 := 1#32
  let v1340 : Index := Scalar.indexCast c1_i32_994
  let c0_i32_602 : BitVec 32 := 0#32
  let c1_i32_604 : BitVec 32 := 1#32
  let arg15 : BitVec 32 := Scf.iv c0_i32_602 c1_i32_604 k0_t5
  let v1341 : Index := Scalar.indexCast arg15
  let c336_995 : Index := 336#32
  ![3, 1, v1341.toNat, 336]
def k0_off1910 (k0_t5 : Fin k0_t5_loop.trips) : Fin 4 → Nat :=
  let c1_i32_996 : BitVec 32 := 1#32
  let v1345 : Index := Scalar.indexCast c1_i32_996
  let c1_i32_997 : BitVec 32 := 1#32
  let v1346 : Index := Scalar.indexCast c1_i32_997
  let c0_i32_602 : BitVec 32 := 0#32
  let c1_i32_604 : BitVec 32 := 1#32
  let arg15 : BitVec 32 := Scf.iv c0_i32_602 c1_i32_604 k0_t5
  let v1347 : Index := Scalar.indexCast arg15
  let c336_998 : Index := 336#32
  ![1, 1, v1347.toNat, 336]
def k0_off1911 (k0_t5 : Fin k0_t5_loop.trips) : Fin 4 → Nat :=
  let c3_i32_999 : BitVec 32 := 3#32
  let v1351 : Index := Scalar.indexCast c3_i32_999
  let c1_i32_1000 : BitVec 32 := 1#32
  let v1352 : Index := Scalar.indexCast c1_i32_1000
  let c0_i32_602 : BitVec 32 := 0#32
  let c1_i32_604 : BitVec 32 := 1#32
  let arg15 : BitVec 32 := Scf.iv c0_i32_602 c1_i32_604 k0_t5
  let v1353 : Index := Scalar.indexCast arg15
  let c352_1001 : Index := 352#32
  ![3, 1, v1353.toNat, 352]
def k0_off1912 (k0_t5 : Fin k0_t5_loop.trips) : Fin 4 → Nat :=
  let c1_i32_1002 : BitVec 32 := 1#32
  let v1357 : Index := Scalar.indexCast c1_i32_1002
  let c1_i32_1003 : BitVec 32 := 1#32
  let v1358 : Index := Scalar.indexCast c1_i32_1003
  let c0_i32_602 : BitVec 32 := 0#32
  let c1_i32_604 : BitVec 32 := 1#32
  let arg15 : BitVec 32 := Scf.iv c0_i32_602 c1_i32_604 k0_t5
  let v1359 : Index := Scalar.indexCast arg15
  let c352_1004 : Index := 352#32
  ![1, 1, v1359.toNat, 352]
def k0_off1913 (k0_t5 : Fin k0_t5_loop.trips) : Fin 4 → Nat :=
  let c3_i32_1005 : BitVec 32 := 3#32
  let v1363 : Index := Scalar.indexCast c3_i32_1005
  let c1_i32_1006 : BitVec 32 := 1#32
  let v1364 : Index := Scalar.indexCast c1_i32_1006
  let c0_i32_602 : BitVec 32 := 0#32
  let c1_i32_604 : BitVec 32 := 1#32
  let arg15 : BitVec 32 := Scf.iv c0_i32_602 c1_i32_604 k0_t5
  let v1365 : Index := Scalar.indexCast arg15
  let c368_1007 : Index := 368#32
  ![3, 1, v1365.toNat, 368]
def k0_off1914 (k0_t5 : Fin k0_t5_loop.trips) : Fin 4 → Nat :=
  let c1_i32_1008 : BitVec 32 := 1#32
  let v1369 : Index := Scalar.indexCast c1_i32_1008
  let c1_i32_1009 : BitVec 32 := 1#32
  let v1370 : Index := Scalar.indexCast c1_i32_1009
  let c0_i32_602 : BitVec 32 := 0#32
  let c1_i32_604 : BitVec 32 := 1#32
  let arg15 : BitVec 32 := Scf.iv c0_i32_602 c1_i32_604 k0_t5
  let v1371 : Index := Scalar.indexCast arg15
  let c368_1010 : Index := 368#32
  ![1, 1, v1371.toNat, 368]
def k0_off1915 (k0_t5 : Fin k0_t5_loop.trips) : Fin 4 → Nat :=
  let c3_i32_1011 : BitVec 32 := 3#32
  let v1375 : Index := Scalar.indexCast c3_i32_1011
  let c1_i32_1012 : BitVec 32 := 1#32
  let v1376 : Index := Scalar.indexCast c1_i32_1012
  let c0_i32_602 : BitVec 32 := 0#32
  let c1_i32_604 : BitVec 32 := 1#32
  let arg15 : BitVec 32 := Scf.iv c0_i32_602 c1_i32_604 k0_t5
  let v1377 : Index := Scalar.indexCast arg15
  let c384_1013 : Index := 384#32
  ![3, 1, v1377.toNat, 384]
def k0_off1916 (k0_t5 : Fin k0_t5_loop.trips) : Fin 4 → Nat :=
  let c1_i32_1014 : BitVec 32 := 1#32
  let v1381 : Index := Scalar.indexCast c1_i32_1014
  let c1_i32_1015 : BitVec 32 := 1#32
  let v1382 : Index := Scalar.indexCast c1_i32_1015
  let c0_i32_602 : BitVec 32 := 0#32
  let c1_i32_604 : BitVec 32 := 1#32
  let arg15 : BitVec 32 := Scf.iv c0_i32_602 c1_i32_604 k0_t5
  let v1383 : Index := Scalar.indexCast arg15
  let c384_1016 : Index := 384#32
  ![1, 1, v1383.toNat, 384]
def k0_off1917 (k0_t5 : Fin k0_t5_loop.trips) : Fin 4 → Nat :=
  let c3_i32_1017 : BitVec 32 := 3#32
  let v1387 : Index := Scalar.indexCast c3_i32_1017
  let c1_i32_1018 : BitVec 32 := 1#32
  let v1388 : Index := Scalar.indexCast c1_i32_1018
  let c0_i32_602 : BitVec 32 := 0#32
  let c1_i32_604 : BitVec 32 := 1#32
  let arg15 : BitVec 32 := Scf.iv c0_i32_602 c1_i32_604 k0_t5
  let v1389 : Index := Scalar.indexCast arg15
  let c400_1019 : Index := 400#32
  ![3, 1, v1389.toNat, 400]
def k0_off1918 (k0_t5 : Fin k0_t5_loop.trips) : Fin 4 → Nat :=
  let c1_i32_1020 : BitVec 32 := 1#32
  let v1393 : Index := Scalar.indexCast c1_i32_1020
  let c1_i32_1021 : BitVec 32 := 1#32
  let v1394 : Index := Scalar.indexCast c1_i32_1021
  let c0_i32_602 : BitVec 32 := 0#32
  let c1_i32_604 : BitVec 32 := 1#32
  let arg15 : BitVec 32 := Scf.iv c0_i32_602 c1_i32_604 k0_t5
  let v1395 : Index := Scalar.indexCast arg15
  let c400_1022 : Index := 400#32
  ![1, 1, v1395.toNat, 400]
def k0_off1919 (k0_t5 : Fin k0_t5_loop.trips) : Fin 4 → Nat :=
  let c3_i32_1023 : BitVec 32 := 3#32
  let v1399 : Index := Scalar.indexCast c3_i32_1023
  let c1_i32_1024 : BitVec 32 := 1#32
  let v1400 : Index := Scalar.indexCast c1_i32_1024
  let c0_i32_602 : BitVec 32 := 0#32
  let c1_i32_604 : BitVec 32 := 1#32
  let arg15 : BitVec 32 := Scf.iv c0_i32_602 c1_i32_604 k0_t5
  let v1401 : Index := Scalar.indexCast arg15
  let c416_1025 : Index := 416#32
  ![3, 1, v1401.toNat, 416]
def k0_off1920 (k0_t5 : Fin k0_t5_loop.trips) : Fin 4 → Nat :=
  let c1_i32_1026 : BitVec 32 := 1#32
  let v1405 : Index := Scalar.indexCast c1_i32_1026
  let c1_i32_1027 : BitVec 32 := 1#32
  let v1406 : Index := Scalar.indexCast c1_i32_1027
  let c0_i32_602 : BitVec 32 := 0#32
  let c1_i32_604 : BitVec 32 := 1#32
  let arg15 : BitVec 32 := Scf.iv c0_i32_602 c1_i32_604 k0_t5
  let v1407 : Index := Scalar.indexCast arg15
  let c416_1028 : Index := 416#32
  ![1, 1, v1407.toNat, 416]
def k0_off1921 (k0_t5 : Fin k0_t5_loop.trips) : Fin 4 → Nat :=
  let c3_i32_1029 : BitVec 32 := 3#32
  let v1411 : Index := Scalar.indexCast c3_i32_1029
  let c1_i32_1030 : BitVec 32 := 1#32
  let v1412 : Index := Scalar.indexCast c1_i32_1030
  let c0_i32_602 : BitVec 32 := 0#32
  let c1_i32_604 : BitVec 32 := 1#32
  let arg15 : BitVec 32 := Scf.iv c0_i32_602 c1_i32_604 k0_t5
  let v1413 : Index := Scalar.indexCast arg15
  let c432_1031 : Index := 432#32
  ![3, 1, v1413.toNat, 432]
def k0_off1922 (k0_t5 : Fin k0_t5_loop.trips) : Fin 4 → Nat :=
  let c1_i32_1032 : BitVec 32 := 1#32
  let v1417 : Index := Scalar.indexCast c1_i32_1032
  let c1_i32_1033 : BitVec 32 := 1#32
  let v1418 : Index := Scalar.indexCast c1_i32_1033
  let c0_i32_602 : BitVec 32 := 0#32
  let c1_i32_604 : BitVec 32 := 1#32
  let arg15 : BitVec 32 := Scf.iv c0_i32_602 c1_i32_604 k0_t5
  let v1419 : Index := Scalar.indexCast arg15
  let c432_1034 : Index := 432#32
  ![1, 1, v1419.toNat, 432]
def k0_off1923 (k0_t5 : Fin k0_t5_loop.trips) : Fin 4 → Nat :=
  let c3_i32_1035 : BitVec 32 := 3#32
  let v1423 : Index := Scalar.indexCast c3_i32_1035
  let c1_i32_1036 : BitVec 32 := 1#32
  let v1424 : Index := Scalar.indexCast c1_i32_1036
  let c0_i32_602 : BitVec 32 := 0#32
  let c1_i32_604 : BitVec 32 := 1#32
  let arg15 : BitVec 32 := Scf.iv c0_i32_602 c1_i32_604 k0_t5
  let v1425 : Index := Scalar.indexCast arg15
  let c448_1037 : Index := 448#32
  ![3, 1, v1425.toNat, 448]
def k0_off1924 (k0_t5 : Fin k0_t5_loop.trips) : Fin 4 → Nat :=
  let c1_i32_1038 : BitVec 32 := 1#32
  let v1429 : Index := Scalar.indexCast c1_i32_1038
  let c1_i32_1039 : BitVec 32 := 1#32
  let v1430 : Index := Scalar.indexCast c1_i32_1039
  let c0_i32_602 : BitVec 32 := 0#32
  let c1_i32_604 : BitVec 32 := 1#32
  let arg15 : BitVec 32 := Scf.iv c0_i32_602 c1_i32_604 k0_t5
  let v1431 : Index := Scalar.indexCast arg15
  let c448_1040 : Index := 448#32
  ![1, 1, v1431.toNat, 448]
def k0_off1925 (k0_t5 : Fin k0_t5_loop.trips) : Fin 4 → Nat :=
  let c3_i32_1041 : BitVec 32 := 3#32
  let v1435 : Index := Scalar.indexCast c3_i32_1041
  let c1_i32_1042 : BitVec 32 := 1#32
  let v1436 : Index := Scalar.indexCast c1_i32_1042
  let c0_i32_602 : BitVec 32 := 0#32
  let c1_i32_604 : BitVec 32 := 1#32
  let arg15 : BitVec 32 := Scf.iv c0_i32_602 c1_i32_604 k0_t5
  let v1437 : Index := Scalar.indexCast arg15
  let c464_1043 : Index := 464#32
  ![3, 1, v1437.toNat, 464]
def k0_off1926 (k0_t5 : Fin k0_t5_loop.trips) : Fin 4 → Nat :=
  let c1_i32_1044 : BitVec 32 := 1#32
  let v1441 : Index := Scalar.indexCast c1_i32_1044
  let c1_i32_1045 : BitVec 32 := 1#32
  let v1442 : Index := Scalar.indexCast c1_i32_1045
  let c0_i32_602 : BitVec 32 := 0#32
  let c1_i32_604 : BitVec 32 := 1#32
  let arg15 : BitVec 32 := Scf.iv c0_i32_602 c1_i32_604 k0_t5
  let v1443 : Index := Scalar.indexCast arg15
  let c464_1046 : Index := 464#32
  ![1, 1, v1443.toNat, 464]
def k0_off1927 (k0_t5 : Fin k0_t5_loop.trips) : Fin 4 → Nat :=
  let c3_i32_1047 : BitVec 32 := 3#32
  let v1447 : Index := Scalar.indexCast c3_i32_1047
  let c1_i32_1048 : BitVec 32 := 1#32
  let v1448 : Index := Scalar.indexCast c1_i32_1048
  let c0_i32_602 : BitVec 32 := 0#32
  let c1_i32_604 : BitVec 32 := 1#32
  let arg15 : BitVec 32 := Scf.iv c0_i32_602 c1_i32_604 k0_t5
  let v1449 : Index := Scalar.indexCast arg15
  let c480_1049 : Index := 480#32
  ![3, 1, v1449.toNat, 480]
def k0_off1928 (k0_t5 : Fin k0_t5_loop.trips) : Fin 4 → Nat :=
  let c1_i32_1050 : BitVec 32 := 1#32
  let v1453 : Index := Scalar.indexCast c1_i32_1050
  let c1_i32_1051 : BitVec 32 := 1#32
  let v1454 : Index := Scalar.indexCast c1_i32_1051
  let c0_i32_602 : BitVec 32 := 0#32
  let c1_i32_604 : BitVec 32 := 1#32
  let arg15 : BitVec 32 := Scf.iv c0_i32_602 c1_i32_604 k0_t5
  let v1455 : Index := Scalar.indexCast arg15
  let c480_1052 : Index := 480#32
  ![1, 1, v1455.toNat, 480]
def k0_off1929 (k0_t5 : Fin k0_t5_loop.trips) : Fin 4 → Nat :=
  let c3_i32_1053 : BitVec 32 := 3#32
  let v1459 : Index := Scalar.indexCast c3_i32_1053
  let c1_i32_1054 : BitVec 32 := 1#32
  let v1460 : Index := Scalar.indexCast c1_i32_1054
  let c0_i32_602 : BitVec 32 := 0#32
  let c1_i32_604 : BitVec 32 := 1#32
  let arg15 : BitVec 32 := Scf.iv c0_i32_602 c1_i32_604 k0_t5
  let v1461 : Index := Scalar.indexCast arg15
  let c496_1055 : Index := 496#32
  ![3, 1, v1461.toNat, 496]
def k0_off1930 (k0_t5 : Fin k0_t5_loop.trips) : Fin 4 → Nat :=
  let c1_i32_1056 : BitVec 32 := 1#32
  let v1465 : Index := Scalar.indexCast c1_i32_1056
  let c1_i32_1057 : BitVec 32 := 1#32
  let v1466 : Index := Scalar.indexCast c1_i32_1057
  let c0_i32_602 : BitVec 32 := 0#32
  let c1_i32_604 : BitVec 32 := 1#32
  let arg15 : BitVec 32 := Scf.iv c0_i32_602 c1_i32_604 k0_t5
  let v1467 : Index := Scalar.indexCast arg15
  let c496_1058 : Index := 496#32
  ![1, 1, v1467.toNat, 496]
def k0_off1931 (k0_t5 : Fin k0_t5_loop.trips) : Fin 4 → Nat :=
  let c3_i32_1059 : BitVec 32 := 3#32
  let v1471 : Index := Scalar.indexCast c3_i32_1059
  let c2_i32_1060 : BitVec 32 := 2#32
  let v1472 : Index := Scalar.indexCast c2_i32_1060
  let c0_i32_602 : BitVec 32 := 0#32
  let c1_i32_604 : BitVec 32 := 1#32
  let arg15 : BitVec 32 := Scf.iv c0_i32_602 c1_i32_604 k0_t5
  let v1473 : Index := Scalar.indexCast arg15
  let c0_1061 : Index := 0#32
  ![3, 2, v1473.toNat, 0]
def k0_off1932 (k0_t5 : Fin k0_t5_loop.trips) : Fin 4 → Nat :=
  let c1_i32_1062 : BitVec 32 := 1#32
  let v1477 : Index := Scalar.indexCast c1_i32_1062
  let c2_i32_1063 : BitVec 32 := 2#32
  let v1478 : Index := Scalar.indexCast c2_i32_1063
  let c0_i32_602 : BitVec 32 := 0#32
  let c1_i32_604 : BitVec 32 := 1#32
  let arg15 : BitVec 32 := Scf.iv c0_i32_602 c1_i32_604 k0_t5
  let v1479 : Index := Scalar.indexCast arg15
  let c0_1064 : Index := 0#32
  ![1, 2, v1479.toNat, 0]
def k0_off1933 (k0_t5 : Fin k0_t5_loop.trips) : Fin 4 → Nat :=
  let c3_i32_1065 : BitVec 32 := 3#32
  let v1483 : Index := Scalar.indexCast c3_i32_1065
  let c2_i32_1066 : BitVec 32 := 2#32
  let v1484 : Index := Scalar.indexCast c2_i32_1066
  let c0_i32_602 : BitVec 32 := 0#32
  let c1_i32_604 : BitVec 32 := 1#32
  let arg15 : BitVec 32 := Scf.iv c0_i32_602 c1_i32_604 k0_t5
  let v1485 : Index := Scalar.indexCast arg15
  let c16_1067 : Index := 16#32
  ![3, 2, v1485.toNat, 16]
def k0_off1934 (k0_t5 : Fin k0_t5_loop.trips) : Fin 4 → Nat :=
  let c1_i32_1068 : BitVec 32 := 1#32
  let v1489 : Index := Scalar.indexCast c1_i32_1068
  let c2_i32_1069 : BitVec 32 := 2#32
  let v1490 : Index := Scalar.indexCast c2_i32_1069
  let c0_i32_602 : BitVec 32 := 0#32
  let c1_i32_604 : BitVec 32 := 1#32
  let arg15 : BitVec 32 := Scf.iv c0_i32_602 c1_i32_604 k0_t5
  let v1491 : Index := Scalar.indexCast arg15
  let c16_1070 : Index := 16#32
  ![1, 2, v1491.toNat, 16]
def k0_off1935 (k0_t5 : Fin k0_t5_loop.trips) : Fin 4 → Nat :=
  let c3_i32_1071 : BitVec 32 := 3#32
  let v1495 : Index := Scalar.indexCast c3_i32_1071
  let c2_i32_1072 : BitVec 32 := 2#32
  let v1496 : Index := Scalar.indexCast c2_i32_1072
  let c0_i32_602 : BitVec 32 := 0#32
  let c1_i32_604 : BitVec 32 := 1#32
  let arg15 : BitVec 32 := Scf.iv c0_i32_602 c1_i32_604 k0_t5
  let v1497 : Index := Scalar.indexCast arg15
  let c32_1073 : Index := 32#32
  ![3, 2, v1497.toNat, 32]
def k0_off1936 (k0_t5 : Fin k0_t5_loop.trips) : Fin 4 → Nat :=
  let c1_i32_1074 : BitVec 32 := 1#32
  let v1501 : Index := Scalar.indexCast c1_i32_1074
  let c2_i32_1075 : BitVec 32 := 2#32
  let v1502 : Index := Scalar.indexCast c2_i32_1075
  let c0_i32_602 : BitVec 32 := 0#32
  let c1_i32_604 : BitVec 32 := 1#32
  let arg15 : BitVec 32 := Scf.iv c0_i32_602 c1_i32_604 k0_t5
  let v1503 : Index := Scalar.indexCast arg15
  let c32_1076 : Index := 32#32
  ![1, 2, v1503.toNat, 32]
def k0_off1937 (k0_t5 : Fin k0_t5_loop.trips) : Fin 4 → Nat :=
  let c3_i32_1077 : BitVec 32 := 3#32
  let v1507 : Index := Scalar.indexCast c3_i32_1077
  let c2_i32_1078 : BitVec 32 := 2#32
  let v1508 : Index := Scalar.indexCast c2_i32_1078
  let c0_i32_602 : BitVec 32 := 0#32
  let c1_i32_604 : BitVec 32 := 1#32
  let arg15 : BitVec 32 := Scf.iv c0_i32_602 c1_i32_604 k0_t5
  let v1509 : Index := Scalar.indexCast arg15
  let c48_1079 : Index := 48#32
  ![3, 2, v1509.toNat, 48]
def k0_off1938 (k0_t5 : Fin k0_t5_loop.trips) : Fin 4 → Nat :=
  let c1_i32_1080 : BitVec 32 := 1#32
  let v1513 : Index := Scalar.indexCast c1_i32_1080
  let c2_i32_1081 : BitVec 32 := 2#32
  let v1514 : Index := Scalar.indexCast c2_i32_1081
  let c0_i32_602 : BitVec 32 := 0#32
  let c1_i32_604 : BitVec 32 := 1#32
  let arg15 : BitVec 32 := Scf.iv c0_i32_602 c1_i32_604 k0_t5
  let v1515 : Index := Scalar.indexCast arg15
  let c48_1082 : Index := 48#32
  ![1, 2, v1515.toNat, 48]
def k0_off1939 (k0_t5 : Fin k0_t5_loop.trips) : Fin 4 → Nat :=
  let c3_i32_1083 : BitVec 32 := 3#32
  let v1519 : Index := Scalar.indexCast c3_i32_1083
  let c2_i32_1084 : BitVec 32 := 2#32
  let v1520 : Index := Scalar.indexCast c2_i32_1084
  let c0_i32_602 : BitVec 32 := 0#32
  let c1_i32_604 : BitVec 32 := 1#32
  let arg15 : BitVec 32 := Scf.iv c0_i32_602 c1_i32_604 k0_t5
  let v1521 : Index := Scalar.indexCast arg15
  let c64_1085 : Index := 64#32
  ![3, 2, v1521.toNat, 64]
def k0_off1940 (k0_t5 : Fin k0_t5_loop.trips) : Fin 4 → Nat :=
  let c1_i32_1086 : BitVec 32 := 1#32
  let v1525 : Index := Scalar.indexCast c1_i32_1086
  let c2_i32_1087 : BitVec 32 := 2#32
  let v1526 : Index := Scalar.indexCast c2_i32_1087
  let c0_i32_602 : BitVec 32 := 0#32
  let c1_i32_604 : BitVec 32 := 1#32
  let arg15 : BitVec 32 := Scf.iv c0_i32_602 c1_i32_604 k0_t5
  let v1527 : Index := Scalar.indexCast arg15
  let c64_1088 : Index := 64#32
  ![1, 2, v1527.toNat, 64]
def k0_off1941 (k0_t5 : Fin k0_t5_loop.trips) : Fin 4 → Nat :=
  let c3_i32_1089 : BitVec 32 := 3#32
  let v1531 : Index := Scalar.indexCast c3_i32_1089
  let c2_i32_1090 : BitVec 32 := 2#32
  let v1532 : Index := Scalar.indexCast c2_i32_1090
  let c0_i32_602 : BitVec 32 := 0#32
  let c1_i32_604 : BitVec 32 := 1#32
  let arg15 : BitVec 32 := Scf.iv c0_i32_602 c1_i32_604 k0_t5
  let v1533 : Index := Scalar.indexCast arg15
  let c80_1091 : Index := 80#32
  ![3, 2, v1533.toNat, 80]
def k0_off1942 (k0_t5 : Fin k0_t5_loop.trips) : Fin 4 → Nat :=
  let c1_i32_1092 : BitVec 32 := 1#32
  let v1537 : Index := Scalar.indexCast c1_i32_1092
  let c2_i32_1093 : BitVec 32 := 2#32
  let v1538 : Index := Scalar.indexCast c2_i32_1093
  let c0_i32_602 : BitVec 32 := 0#32
  let c1_i32_604 : BitVec 32 := 1#32
  let arg15 : BitVec 32 := Scf.iv c0_i32_602 c1_i32_604 k0_t5
  let v1539 : Index := Scalar.indexCast arg15
  let c80_1094 : Index := 80#32
  ![1, 2, v1539.toNat, 80]
def k0_off1943 (k0_t5 : Fin k0_t5_loop.trips) : Fin 4 → Nat :=
  let c3_i32_1095 : BitVec 32 := 3#32
  let v1543 : Index := Scalar.indexCast c3_i32_1095
  let c2_i32_1096 : BitVec 32 := 2#32
  let v1544 : Index := Scalar.indexCast c2_i32_1096
  let c0_i32_602 : BitVec 32 := 0#32
  let c1_i32_604 : BitVec 32 := 1#32
  let arg15 : BitVec 32 := Scf.iv c0_i32_602 c1_i32_604 k0_t5
  let v1545 : Index := Scalar.indexCast arg15
  let c96_1097 : Index := 96#32
  ![3, 2, v1545.toNat, 96]
def k0_off1944 (k0_t5 : Fin k0_t5_loop.trips) : Fin 4 → Nat :=
  let c1_i32_1098 : BitVec 32 := 1#32
  let v1549 : Index := Scalar.indexCast c1_i32_1098
  let c2_i32_1099 : BitVec 32 := 2#32
  let v1550 : Index := Scalar.indexCast c2_i32_1099
  let c0_i32_602 : BitVec 32 := 0#32
  let c1_i32_604 : BitVec 32 := 1#32
  let arg15 : BitVec 32 := Scf.iv c0_i32_602 c1_i32_604 k0_t5
  let v1551 : Index := Scalar.indexCast arg15
  let c96_1100 : Index := 96#32
  ![1, 2, v1551.toNat, 96]
def k0_off1945 (k0_t5 : Fin k0_t5_loop.trips) : Fin 4 → Nat :=
  let c3_i32_1101 : BitVec 32 := 3#32
  let v1555 : Index := Scalar.indexCast c3_i32_1101
  let c2_i32_1102 : BitVec 32 := 2#32
  let v1556 : Index := Scalar.indexCast c2_i32_1102
  let c0_i32_602 : BitVec 32 := 0#32
  let c1_i32_604 : BitVec 32 := 1#32
  let arg15 : BitVec 32 := Scf.iv c0_i32_602 c1_i32_604 k0_t5
  let v1557 : Index := Scalar.indexCast arg15
  let c112_1103 : Index := 112#32
  ![3, 2, v1557.toNat, 112]
def k0_off1946 (k0_t5 : Fin k0_t5_loop.trips) : Fin 4 → Nat :=
  let c1_i32_1104 : BitVec 32 := 1#32
  let v1561 : Index := Scalar.indexCast c1_i32_1104
  let c2_i32_1105 : BitVec 32 := 2#32
  let v1562 : Index := Scalar.indexCast c2_i32_1105
  let c0_i32_602 : BitVec 32 := 0#32
  let c1_i32_604 : BitVec 32 := 1#32
  let arg15 : BitVec 32 := Scf.iv c0_i32_602 c1_i32_604 k0_t5
  let v1563 : Index := Scalar.indexCast arg15
  let c112_1106 : Index := 112#32
  ![1, 2, v1563.toNat, 112]
def k0_off1947 (k0_t5 : Fin k0_t5_loop.trips) : Fin 4 → Nat :=
  let c3_i32_1107 : BitVec 32 := 3#32
  let v1567 : Index := Scalar.indexCast c3_i32_1107
  let c2_i32_1108 : BitVec 32 := 2#32
  let v1568 : Index := Scalar.indexCast c2_i32_1108
  let c0_i32_602 : BitVec 32 := 0#32
  let c1_i32_604 : BitVec 32 := 1#32
  let arg15 : BitVec 32 := Scf.iv c0_i32_602 c1_i32_604 k0_t5
  let v1569 : Index := Scalar.indexCast arg15
  let c128_1109 : Index := 128#32
  ![3, 2, v1569.toNat, 128]
def k0_off1948 (k0_t5 : Fin k0_t5_loop.trips) : Fin 4 → Nat :=
  let c1_i32_1110 : BitVec 32 := 1#32
  let v1573 : Index := Scalar.indexCast c1_i32_1110
  let c2_i32_1111 : BitVec 32 := 2#32
  let v1574 : Index := Scalar.indexCast c2_i32_1111
  let c0_i32_602 : BitVec 32 := 0#32
  let c1_i32_604 : BitVec 32 := 1#32
  let arg15 : BitVec 32 := Scf.iv c0_i32_602 c1_i32_604 k0_t5
  let v1575 : Index := Scalar.indexCast arg15
  let c128_1112 : Index := 128#32
  ![1, 2, v1575.toNat, 128]
def k0_off1949 (k0_t5 : Fin k0_t5_loop.trips) : Fin 4 → Nat :=
  let c3_i32_1113 : BitVec 32 := 3#32
  let v1579 : Index := Scalar.indexCast c3_i32_1113
  let c2_i32_1114 : BitVec 32 := 2#32
  let v1580 : Index := Scalar.indexCast c2_i32_1114
  let c0_i32_602 : BitVec 32 := 0#32
  let c1_i32_604 : BitVec 32 := 1#32
  let arg15 : BitVec 32 := Scf.iv c0_i32_602 c1_i32_604 k0_t5
  let v1581 : Index := Scalar.indexCast arg15
  let c144_1115 : Index := 144#32
  ![3, 2, v1581.toNat, 144]
def k0_off1950 (k0_t5 : Fin k0_t5_loop.trips) : Fin 4 → Nat :=
  let c1_i32_1116 : BitVec 32 := 1#32
  let v1585 : Index := Scalar.indexCast c1_i32_1116
  let c2_i32_1117 : BitVec 32 := 2#32
  let v1586 : Index := Scalar.indexCast c2_i32_1117
  let c0_i32_602 : BitVec 32 := 0#32
  let c1_i32_604 : BitVec 32 := 1#32
  let arg15 : BitVec 32 := Scf.iv c0_i32_602 c1_i32_604 k0_t5
  let v1587 : Index := Scalar.indexCast arg15
  let c144_1118 : Index := 144#32
  ![1, 2, v1587.toNat, 144]
def k0_off1951 (k0_t5 : Fin k0_t5_loop.trips) : Fin 4 → Nat :=
  let c3_i32_1119 : BitVec 32 := 3#32
  let v1591 : Index := Scalar.indexCast c3_i32_1119
  let c2_i32_1120 : BitVec 32 := 2#32
  let v1592 : Index := Scalar.indexCast c2_i32_1120
  let c0_i32_602 : BitVec 32 := 0#32
  let c1_i32_604 : BitVec 32 := 1#32
  let arg15 : BitVec 32 := Scf.iv c0_i32_602 c1_i32_604 k0_t5
  let v1593 : Index := Scalar.indexCast arg15
  let c160_1121 : Index := 160#32
  ![3, 2, v1593.toNat, 160]
def k0_off1952 (k0_t5 : Fin k0_t5_loop.trips) : Fin 4 → Nat :=
  let c1_i32_1122 : BitVec 32 := 1#32
  let v1597 : Index := Scalar.indexCast c1_i32_1122
  let c2_i32_1123 : BitVec 32 := 2#32
  let v1598 : Index := Scalar.indexCast c2_i32_1123
  let c0_i32_602 : BitVec 32 := 0#32
  let c1_i32_604 : BitVec 32 := 1#32
  let arg15 : BitVec 32 := Scf.iv c0_i32_602 c1_i32_604 k0_t5
  let v1599 : Index := Scalar.indexCast arg15
  let c160_1124 : Index := 160#32
  ![1, 2, v1599.toNat, 160]
def k0_off1953 (k0_t5 : Fin k0_t5_loop.trips) : Fin 4 → Nat :=
  let c3_i32_1125 : BitVec 32 := 3#32
  let v1603 : Index := Scalar.indexCast c3_i32_1125
  let c2_i32_1126 : BitVec 32 := 2#32
  let v1604 : Index := Scalar.indexCast c2_i32_1126
  let c0_i32_602 : BitVec 32 := 0#32
  let c1_i32_604 : BitVec 32 := 1#32
  let arg15 : BitVec 32 := Scf.iv c0_i32_602 c1_i32_604 k0_t5
  let v1605 : Index := Scalar.indexCast arg15
  let c176_1127 : Index := 176#32
  ![3, 2, v1605.toNat, 176]
def k0_off1954 (k0_t5 : Fin k0_t5_loop.trips) : Fin 4 → Nat :=
  let c1_i32_1128 : BitVec 32 := 1#32
  let v1609 : Index := Scalar.indexCast c1_i32_1128
  let c2_i32_1129 : BitVec 32 := 2#32
  let v1610 : Index := Scalar.indexCast c2_i32_1129
  let c0_i32_602 : BitVec 32 := 0#32
  let c1_i32_604 : BitVec 32 := 1#32
  let arg15 : BitVec 32 := Scf.iv c0_i32_602 c1_i32_604 k0_t5
  let v1611 : Index := Scalar.indexCast arg15
  let c176_1130 : Index := 176#32
  ![1, 2, v1611.toNat, 176]
def k0_off1955 (k0_t5 : Fin k0_t5_loop.trips) : Fin 4 → Nat :=
  let c3_i32_1131 : BitVec 32 := 3#32
  let v1615 : Index := Scalar.indexCast c3_i32_1131
  let c2_i32_1132 : BitVec 32 := 2#32
  let v1616 : Index := Scalar.indexCast c2_i32_1132
  let c0_i32_602 : BitVec 32 := 0#32
  let c1_i32_604 : BitVec 32 := 1#32
  let arg15 : BitVec 32 := Scf.iv c0_i32_602 c1_i32_604 k0_t5
  let v1617 : Index := Scalar.indexCast arg15
  let c192_1133 : Index := 192#32
  ![3, 2, v1617.toNat, 192]
def k0_off1956 (k0_t5 : Fin k0_t5_loop.trips) : Fin 4 → Nat :=
  let c1_i32_1134 : BitVec 32 := 1#32
  let v1621 : Index := Scalar.indexCast c1_i32_1134
  let c2_i32_1135 : BitVec 32 := 2#32
  let v1622 : Index := Scalar.indexCast c2_i32_1135
  let c0_i32_602 : BitVec 32 := 0#32
  let c1_i32_604 : BitVec 32 := 1#32
  let arg15 : BitVec 32 := Scf.iv c0_i32_602 c1_i32_604 k0_t5
  let v1623 : Index := Scalar.indexCast arg15
  let c192_1136 : Index := 192#32
  ![1, 2, v1623.toNat, 192]
def k0_off1957 (k0_t5 : Fin k0_t5_loop.trips) : Fin 4 → Nat :=
  let c3_i32_1137 : BitVec 32 := 3#32
  let v1627 : Index := Scalar.indexCast c3_i32_1137
  let c2_i32_1138 : BitVec 32 := 2#32
  let v1628 : Index := Scalar.indexCast c2_i32_1138
  let c0_i32_602 : BitVec 32 := 0#32
  let c1_i32_604 : BitVec 32 := 1#32
  let arg15 : BitVec 32 := Scf.iv c0_i32_602 c1_i32_604 k0_t5
  let v1629 : Index := Scalar.indexCast arg15
  let c208_1139 : Index := 208#32
  ![3, 2, v1629.toNat, 208]
def k0_off1958 (k0_t5 : Fin k0_t5_loop.trips) : Fin 4 → Nat :=
  let c1_i32_1140 : BitVec 32 := 1#32
  let v1633 : Index := Scalar.indexCast c1_i32_1140
  let c2_i32_1141 : BitVec 32 := 2#32
  let v1634 : Index := Scalar.indexCast c2_i32_1141
  let c0_i32_602 : BitVec 32 := 0#32
  let c1_i32_604 : BitVec 32 := 1#32
  let arg15 : BitVec 32 := Scf.iv c0_i32_602 c1_i32_604 k0_t5
  let v1635 : Index := Scalar.indexCast arg15
  let c208_1142 : Index := 208#32
  ![1, 2, v1635.toNat, 208]
def k0_off1959 (k0_t5 : Fin k0_t5_loop.trips) : Fin 4 → Nat :=
  let c3_i32_1143 : BitVec 32 := 3#32
  let v1639 : Index := Scalar.indexCast c3_i32_1143
  let c2_i32_1144 : BitVec 32 := 2#32
  let v1640 : Index := Scalar.indexCast c2_i32_1144
  let c0_i32_602 : BitVec 32 := 0#32
  let c1_i32_604 : BitVec 32 := 1#32
  let arg15 : BitVec 32 := Scf.iv c0_i32_602 c1_i32_604 k0_t5
  let v1641 : Index := Scalar.indexCast arg15
  let c224_1145 : Index := 224#32
  ![3, 2, v1641.toNat, 224]
def k0_off1960 (k0_t5 : Fin k0_t5_loop.trips) : Fin 4 → Nat :=
  let c1_i32_1146 : BitVec 32 := 1#32
  let v1645 : Index := Scalar.indexCast c1_i32_1146
  let c2_i32_1147 : BitVec 32 := 2#32
  let v1646 : Index := Scalar.indexCast c2_i32_1147
  let c0_i32_602 : BitVec 32 := 0#32
  let c1_i32_604 : BitVec 32 := 1#32
  let arg15 : BitVec 32 := Scf.iv c0_i32_602 c1_i32_604 k0_t5
  let v1647 : Index := Scalar.indexCast arg15
  let c224_1148 : Index := 224#32
  ![1, 2, v1647.toNat, 224]
def k0_off1961 (k0_t5 : Fin k0_t5_loop.trips) : Fin 4 → Nat :=
  let c3_i32_1149 : BitVec 32 := 3#32
  let v1651 : Index := Scalar.indexCast c3_i32_1149
  let c2_i32_1150 : BitVec 32 := 2#32
  let v1652 : Index := Scalar.indexCast c2_i32_1150
  let c0_i32_602 : BitVec 32 := 0#32
  let c1_i32_604 : BitVec 32 := 1#32
  let arg15 : BitVec 32 := Scf.iv c0_i32_602 c1_i32_604 k0_t5
  let v1653 : Index := Scalar.indexCast arg15
  let c240_1151 : Index := 240#32
  ![3, 2, v1653.toNat, 240]
def k0_off1962 (k0_t5 : Fin k0_t5_loop.trips) : Fin 4 → Nat :=
  let c1_i32_1152 : BitVec 32 := 1#32
  let v1657 : Index := Scalar.indexCast c1_i32_1152
  let c2_i32_1153 : BitVec 32 := 2#32
  let v1658 : Index := Scalar.indexCast c2_i32_1153
  let c0_i32_602 : BitVec 32 := 0#32
  let c1_i32_604 : BitVec 32 := 1#32
  let arg15 : BitVec 32 := Scf.iv c0_i32_602 c1_i32_604 k0_t5
  let v1659 : Index := Scalar.indexCast arg15
  let c240_1154 : Index := 240#32
  ![1, 2, v1659.toNat, 240]
def k0_off1963 (k0_t5 : Fin k0_t5_loop.trips) : Fin 4 → Nat :=
  let c3_i32_1155 : BitVec 32 := 3#32
  let v1663 : Index := Scalar.indexCast c3_i32_1155
  let c2_i32_1156 : BitVec 32 := 2#32
  let v1664 : Index := Scalar.indexCast c2_i32_1156
  let c0_i32_602 : BitVec 32 := 0#32
  let c1_i32_604 : BitVec 32 := 1#32
  let arg15 : BitVec 32 := Scf.iv c0_i32_602 c1_i32_604 k0_t5
  let v1665 : Index := Scalar.indexCast arg15
  let c256_1157 : Index := 256#32
  ![3, 2, v1665.toNat, 256]
def k0_off1964 (k0_t5 : Fin k0_t5_loop.trips) : Fin 4 → Nat :=
  let c1_i32_1158 : BitVec 32 := 1#32
  let v1669 : Index := Scalar.indexCast c1_i32_1158
  let c2_i32_1159 : BitVec 32 := 2#32
  let v1670 : Index := Scalar.indexCast c2_i32_1159
  let c0_i32_602 : BitVec 32 := 0#32
  let c1_i32_604 : BitVec 32 := 1#32
  let arg15 : BitVec 32 := Scf.iv c0_i32_602 c1_i32_604 k0_t5
  let v1671 : Index := Scalar.indexCast arg15
  let c256_1160 : Index := 256#32
  ![1, 2, v1671.toNat, 256]
def k0_off1965 (k0_t5 : Fin k0_t5_loop.trips) : Fin 4 → Nat :=
  let c3_i32_1161 : BitVec 32 := 3#32
  let v1675 : Index := Scalar.indexCast c3_i32_1161
  let c2_i32_1162 : BitVec 32 := 2#32
  let v1676 : Index := Scalar.indexCast c2_i32_1162
  let c0_i32_602 : BitVec 32 := 0#32
  let c1_i32_604 : BitVec 32 := 1#32
  let arg15 : BitVec 32 := Scf.iv c0_i32_602 c1_i32_604 k0_t5
  let v1677 : Index := Scalar.indexCast arg15
  let c272_1163 : Index := 272#32
  ![3, 2, v1677.toNat, 272]
def k0_off1966 (k0_t5 : Fin k0_t5_loop.trips) : Fin 4 → Nat :=
  let c1_i32_1164 : BitVec 32 := 1#32
  let v1681 : Index := Scalar.indexCast c1_i32_1164
  let c2_i32_1165 : BitVec 32 := 2#32
  let v1682 : Index := Scalar.indexCast c2_i32_1165
  let c0_i32_602 : BitVec 32 := 0#32
  let c1_i32_604 : BitVec 32 := 1#32
  let arg15 : BitVec 32 := Scf.iv c0_i32_602 c1_i32_604 k0_t5
  let v1683 : Index := Scalar.indexCast arg15
  let c272_1166 : Index := 272#32
  ![1, 2, v1683.toNat, 272]
def k0_off1967 (k0_t5 : Fin k0_t5_loop.trips) : Fin 4 → Nat :=
  let c3_i32_1167 : BitVec 32 := 3#32
  let v1687 : Index := Scalar.indexCast c3_i32_1167
  let c2_i32_1168 : BitVec 32 := 2#32
  let v1688 : Index := Scalar.indexCast c2_i32_1168
  let c0_i32_602 : BitVec 32 := 0#32
  let c1_i32_604 : BitVec 32 := 1#32
  let arg15 : BitVec 32 := Scf.iv c0_i32_602 c1_i32_604 k0_t5
  let v1689 : Index := Scalar.indexCast arg15
  let c288_1169 : Index := 288#32
  ![3, 2, v1689.toNat, 288]
def k0_off1968 (k0_t5 : Fin k0_t5_loop.trips) : Fin 4 → Nat :=
  let c1_i32_1170 : BitVec 32 := 1#32
  let v1693 : Index := Scalar.indexCast c1_i32_1170
  let c2_i32_1171 : BitVec 32 := 2#32
  let v1694 : Index := Scalar.indexCast c2_i32_1171
  let c0_i32_602 : BitVec 32 := 0#32
  let c1_i32_604 : BitVec 32 := 1#32
  let arg15 : BitVec 32 := Scf.iv c0_i32_602 c1_i32_604 k0_t5
  let v1695 : Index := Scalar.indexCast arg15
  let c288_1172 : Index := 288#32
  ![1, 2, v1695.toNat, 288]
def k0_off1969 (k0_t5 : Fin k0_t5_loop.trips) : Fin 4 → Nat :=
  let c3_i32_1173 : BitVec 32 := 3#32
  let v1699 : Index := Scalar.indexCast c3_i32_1173
  let c2_i32_1174 : BitVec 32 := 2#32
  let v1700 : Index := Scalar.indexCast c2_i32_1174
  let c0_i32_602 : BitVec 32 := 0#32
  let c1_i32_604 : BitVec 32 := 1#32
  let arg15 : BitVec 32 := Scf.iv c0_i32_602 c1_i32_604 k0_t5
  let v1701 : Index := Scalar.indexCast arg15
  let c304_1175 : Index := 304#32
  ![3, 2, v1701.toNat, 304]
def k0_off1970 (k0_t5 : Fin k0_t5_loop.trips) : Fin 4 → Nat :=
  let c1_i32_1176 : BitVec 32 := 1#32
  let v1705 : Index := Scalar.indexCast c1_i32_1176
  let c2_i32_1177 : BitVec 32 := 2#32
  let v1706 : Index := Scalar.indexCast c2_i32_1177
  let c0_i32_602 : BitVec 32 := 0#32
  let c1_i32_604 : BitVec 32 := 1#32
  let arg15 : BitVec 32 := Scf.iv c0_i32_602 c1_i32_604 k0_t5
  let v1707 : Index := Scalar.indexCast arg15
  let c304_1178 : Index := 304#32
  ![1, 2, v1707.toNat, 304]
def k0_off1971 (k0_t5 : Fin k0_t5_loop.trips) : Fin 4 → Nat :=
  let c3_i32_1179 : BitVec 32 := 3#32
  let v1711 : Index := Scalar.indexCast c3_i32_1179
  let c2_i32_1180 : BitVec 32 := 2#32
  let v1712 : Index := Scalar.indexCast c2_i32_1180
  let c0_i32_602 : BitVec 32 := 0#32
  let c1_i32_604 : BitVec 32 := 1#32
  let arg15 : BitVec 32 := Scf.iv c0_i32_602 c1_i32_604 k0_t5
  let v1713 : Index := Scalar.indexCast arg15
  let c320_1181 : Index := 320#32
  ![3, 2, v1713.toNat, 320]
def k0_off1972 (k0_t5 : Fin k0_t5_loop.trips) : Fin 4 → Nat :=
  let c1_i32_1182 : BitVec 32 := 1#32
  let v1717 : Index := Scalar.indexCast c1_i32_1182
  let c2_i32_1183 : BitVec 32 := 2#32
  let v1718 : Index := Scalar.indexCast c2_i32_1183
  let c0_i32_602 : BitVec 32 := 0#32
  let c1_i32_604 : BitVec 32 := 1#32
  let arg15 : BitVec 32 := Scf.iv c0_i32_602 c1_i32_604 k0_t5
  let v1719 : Index := Scalar.indexCast arg15
  let c320_1184 : Index := 320#32
  ![1, 2, v1719.toNat, 320]
def k0_off1973 (k0_t5 : Fin k0_t5_loop.trips) : Fin 4 → Nat :=
  let c3_i32_1185 : BitVec 32 := 3#32
  let v1723 : Index := Scalar.indexCast c3_i32_1185
  let c2_i32_1186 : BitVec 32 := 2#32
  let v1724 : Index := Scalar.indexCast c2_i32_1186
  let c0_i32_602 : BitVec 32 := 0#32
  let c1_i32_604 : BitVec 32 := 1#32
  let arg15 : BitVec 32 := Scf.iv c0_i32_602 c1_i32_604 k0_t5
  let v1725 : Index := Scalar.indexCast arg15
  let c336_1187 : Index := 336#32
  ![3, 2, v1725.toNat, 336]
def k0_off1974 (k0_t5 : Fin k0_t5_loop.trips) : Fin 4 → Nat :=
  let c1_i32_1188 : BitVec 32 := 1#32
  let v1729 : Index := Scalar.indexCast c1_i32_1188
  let c2_i32_1189 : BitVec 32 := 2#32
  let v1730 : Index := Scalar.indexCast c2_i32_1189
  let c0_i32_602 : BitVec 32 := 0#32
  let c1_i32_604 : BitVec 32 := 1#32
  let arg15 : BitVec 32 := Scf.iv c0_i32_602 c1_i32_604 k0_t5
  let v1731 : Index := Scalar.indexCast arg15
  let c336_1190 : Index := 336#32
  ![1, 2, v1731.toNat, 336]
def k0_off1975 (k0_t5 : Fin k0_t5_loop.trips) : Fin 4 → Nat :=
  let c3_i32_1191 : BitVec 32 := 3#32
  let v1735 : Index := Scalar.indexCast c3_i32_1191
  let c2_i32_1192 : BitVec 32 := 2#32
  let v1736 : Index := Scalar.indexCast c2_i32_1192
  let c0_i32_602 : BitVec 32 := 0#32
  let c1_i32_604 : BitVec 32 := 1#32
  let arg15 : BitVec 32 := Scf.iv c0_i32_602 c1_i32_604 k0_t5
  let v1737 : Index := Scalar.indexCast arg15
  let c352_1193 : Index := 352#32
  ![3, 2, v1737.toNat, 352]
def k0_off1976 (k0_t5 : Fin k0_t5_loop.trips) : Fin 4 → Nat :=
  let c1_i32_1194 : BitVec 32 := 1#32
  let v1741 : Index := Scalar.indexCast c1_i32_1194
  let c2_i32_1195 : BitVec 32 := 2#32
  let v1742 : Index := Scalar.indexCast c2_i32_1195
  let c0_i32_602 : BitVec 32 := 0#32
  let c1_i32_604 : BitVec 32 := 1#32
  let arg15 : BitVec 32 := Scf.iv c0_i32_602 c1_i32_604 k0_t5
  let v1743 : Index := Scalar.indexCast arg15
  let c352_1196 : Index := 352#32
  ![1, 2, v1743.toNat, 352]
def k0_off1977 (k0_t5 : Fin k0_t5_loop.trips) : Fin 4 → Nat :=
  let c3_i32_1197 : BitVec 32 := 3#32
  let v1747 : Index := Scalar.indexCast c3_i32_1197
  let c2_i32_1198 : BitVec 32 := 2#32
  let v1748 : Index := Scalar.indexCast c2_i32_1198
  let c0_i32_602 : BitVec 32 := 0#32
  let c1_i32_604 : BitVec 32 := 1#32
  let arg15 : BitVec 32 := Scf.iv c0_i32_602 c1_i32_604 k0_t5
  let v1749 : Index := Scalar.indexCast arg15
  let c368_1199 : Index := 368#32
  ![3, 2, v1749.toNat, 368]
def k0_off1978 (k0_t5 : Fin k0_t5_loop.trips) : Fin 4 → Nat :=
  let c1_i32_1200 : BitVec 32 := 1#32
  let v1753 : Index := Scalar.indexCast c1_i32_1200
  let c2_i32_1201 : BitVec 32 := 2#32
  let v1754 : Index := Scalar.indexCast c2_i32_1201
  let c0_i32_602 : BitVec 32 := 0#32
  let c1_i32_604 : BitVec 32 := 1#32
  let arg15 : BitVec 32 := Scf.iv c0_i32_602 c1_i32_604 k0_t5
  let v1755 : Index := Scalar.indexCast arg15
  let c368_1202 : Index := 368#32
  ![1, 2, v1755.toNat, 368]
def k0_off1979 (k0_t5 : Fin k0_t5_loop.trips) : Fin 4 → Nat :=
  let c3_i32_1203 : BitVec 32 := 3#32
  let v1759 : Index := Scalar.indexCast c3_i32_1203
  let c2_i32_1204 : BitVec 32 := 2#32
  let v1760 : Index := Scalar.indexCast c2_i32_1204
  let c0_i32_602 : BitVec 32 := 0#32
  let c1_i32_604 : BitVec 32 := 1#32
  let arg15 : BitVec 32 := Scf.iv c0_i32_602 c1_i32_604 k0_t5
  let v1761 : Index := Scalar.indexCast arg15
  let c384_1205 : Index := 384#32
  ![3, 2, v1761.toNat, 384]
def k0_off1980 (k0_t5 : Fin k0_t5_loop.trips) : Fin 4 → Nat :=
  let c1_i32_1206 : BitVec 32 := 1#32
  let v1765 : Index := Scalar.indexCast c1_i32_1206
  let c2_i32_1207 : BitVec 32 := 2#32
  let v1766 : Index := Scalar.indexCast c2_i32_1207
  let c0_i32_602 : BitVec 32 := 0#32
  let c1_i32_604 : BitVec 32 := 1#32
  let arg15 : BitVec 32 := Scf.iv c0_i32_602 c1_i32_604 k0_t5
  let v1767 : Index := Scalar.indexCast arg15
  let c384_1208 : Index := 384#32
  ![1, 2, v1767.toNat, 384]
def k0_off1981 (k0_t5 : Fin k0_t5_loop.trips) : Fin 4 → Nat :=
  let c3_i32_1209 : BitVec 32 := 3#32
  let v1771 : Index := Scalar.indexCast c3_i32_1209
  let c2_i32_1210 : BitVec 32 := 2#32
  let v1772 : Index := Scalar.indexCast c2_i32_1210
  let c0_i32_602 : BitVec 32 := 0#32
  let c1_i32_604 : BitVec 32 := 1#32
  let arg15 : BitVec 32 := Scf.iv c0_i32_602 c1_i32_604 k0_t5
  let v1773 : Index := Scalar.indexCast arg15
  let c400_1211 : Index := 400#32
  ![3, 2, v1773.toNat, 400]
def k0_off1982 (k0_t5 : Fin k0_t5_loop.trips) : Fin 4 → Nat :=
  let c1_i32_1212 : BitVec 32 := 1#32
  let v1777 : Index := Scalar.indexCast c1_i32_1212
  let c2_i32_1213 : BitVec 32 := 2#32
  let v1778 : Index := Scalar.indexCast c2_i32_1213
  let c0_i32_602 : BitVec 32 := 0#32
  let c1_i32_604 : BitVec 32 := 1#32
  let arg15 : BitVec 32 := Scf.iv c0_i32_602 c1_i32_604 k0_t5
  let v1779 : Index := Scalar.indexCast arg15
  let c400_1214 : Index := 400#32
  ![1, 2, v1779.toNat, 400]
def k0_off1983 (k0_t5 : Fin k0_t5_loop.trips) : Fin 4 → Nat :=
  let c3_i32_1215 : BitVec 32 := 3#32
  let v1783 : Index := Scalar.indexCast c3_i32_1215
  let c2_i32_1216 : BitVec 32 := 2#32
  let v1784 : Index := Scalar.indexCast c2_i32_1216
  let c0_i32_602 : BitVec 32 := 0#32
  let c1_i32_604 : BitVec 32 := 1#32
  let arg15 : BitVec 32 := Scf.iv c0_i32_602 c1_i32_604 k0_t5
  let v1785 : Index := Scalar.indexCast arg15
  let c416_1217 : Index := 416#32
  ![3, 2, v1785.toNat, 416]
def k0_off1984 (k0_t5 : Fin k0_t5_loop.trips) : Fin 4 → Nat :=
  let c1_i32_1218 : BitVec 32 := 1#32
  let v1789 : Index := Scalar.indexCast c1_i32_1218
  let c2_i32_1219 : BitVec 32 := 2#32
  let v1790 : Index := Scalar.indexCast c2_i32_1219
  let c0_i32_602 : BitVec 32 := 0#32
  let c1_i32_604 : BitVec 32 := 1#32
  let arg15 : BitVec 32 := Scf.iv c0_i32_602 c1_i32_604 k0_t5
  let v1791 : Index := Scalar.indexCast arg15
  let c416_1220 : Index := 416#32
  ![1, 2, v1791.toNat, 416]
def k0_off1985 (k0_t5 : Fin k0_t5_loop.trips) : Fin 4 → Nat :=
  let c3_i32_1221 : BitVec 32 := 3#32
  let v1795 : Index := Scalar.indexCast c3_i32_1221
  let c2_i32_1222 : BitVec 32 := 2#32
  let v1796 : Index := Scalar.indexCast c2_i32_1222
  let c0_i32_602 : BitVec 32 := 0#32
  let c1_i32_604 : BitVec 32 := 1#32
  let arg15 : BitVec 32 := Scf.iv c0_i32_602 c1_i32_604 k0_t5
  let v1797 : Index := Scalar.indexCast arg15
  let c432_1223 : Index := 432#32
  ![3, 2, v1797.toNat, 432]
def k0_off1986 (k0_t5 : Fin k0_t5_loop.trips) : Fin 4 → Nat :=
  let c1_i32_1224 : BitVec 32 := 1#32
  let v1801 : Index := Scalar.indexCast c1_i32_1224
  let c2_i32_1225 : BitVec 32 := 2#32
  let v1802 : Index := Scalar.indexCast c2_i32_1225
  let c0_i32_602 : BitVec 32 := 0#32
  let c1_i32_604 : BitVec 32 := 1#32
  let arg15 : BitVec 32 := Scf.iv c0_i32_602 c1_i32_604 k0_t5
  let v1803 : Index := Scalar.indexCast arg15
  let c432_1226 : Index := 432#32
  ![1, 2, v1803.toNat, 432]
def k0_off1987 (k0_t5 : Fin k0_t5_loop.trips) : Fin 4 → Nat :=
  let c3_i32_1227 : BitVec 32 := 3#32
  let v1807 : Index := Scalar.indexCast c3_i32_1227
  let c2_i32_1228 : BitVec 32 := 2#32
  let v1808 : Index := Scalar.indexCast c2_i32_1228
  let c0_i32_602 : BitVec 32 := 0#32
  let c1_i32_604 : BitVec 32 := 1#32
  let arg15 : BitVec 32 := Scf.iv c0_i32_602 c1_i32_604 k0_t5
  let v1809 : Index := Scalar.indexCast arg15
  let c448_1229 : Index := 448#32
  ![3, 2, v1809.toNat, 448]
def k0_off1988 (k0_t5 : Fin k0_t5_loop.trips) : Fin 4 → Nat :=
  let c1_i32_1230 : BitVec 32 := 1#32
  let v1813 : Index := Scalar.indexCast c1_i32_1230
  let c2_i32_1231 : BitVec 32 := 2#32
  let v1814 : Index := Scalar.indexCast c2_i32_1231
  let c0_i32_602 : BitVec 32 := 0#32
  let c1_i32_604 : BitVec 32 := 1#32
  let arg15 : BitVec 32 := Scf.iv c0_i32_602 c1_i32_604 k0_t5
  let v1815 : Index := Scalar.indexCast arg15
  let c448_1232 : Index := 448#32
  ![1, 2, v1815.toNat, 448]
def k0_off1989 (k0_t5 : Fin k0_t5_loop.trips) : Fin 4 → Nat :=
  let c3_i32_1233 : BitVec 32 := 3#32
  let v1819 : Index := Scalar.indexCast c3_i32_1233
  let c2_i32_1234 : BitVec 32 := 2#32
  let v1820 : Index := Scalar.indexCast c2_i32_1234
  let c0_i32_602 : BitVec 32 := 0#32
  let c1_i32_604 : BitVec 32 := 1#32
  let arg15 : BitVec 32 := Scf.iv c0_i32_602 c1_i32_604 k0_t5
  let v1821 : Index := Scalar.indexCast arg15
  let c464_1235 : Index := 464#32
  ![3, 2, v1821.toNat, 464]
def k0_off1990 (k0_t5 : Fin k0_t5_loop.trips) : Fin 4 → Nat :=
  let c1_i32_1236 : BitVec 32 := 1#32
  let v1825 : Index := Scalar.indexCast c1_i32_1236
  let c2_i32_1237 : BitVec 32 := 2#32
  let v1826 : Index := Scalar.indexCast c2_i32_1237
  let c0_i32_602 : BitVec 32 := 0#32
  let c1_i32_604 : BitVec 32 := 1#32
  let arg15 : BitVec 32 := Scf.iv c0_i32_602 c1_i32_604 k0_t5
  let v1827 : Index := Scalar.indexCast arg15
  let c464_1238 : Index := 464#32
  ![1, 2, v1827.toNat, 464]
def k0_off1991 (k0_t5 : Fin k0_t5_loop.trips) : Fin 4 → Nat :=
  let c3_i32_1239 : BitVec 32 := 3#32
  let v1831 : Index := Scalar.indexCast c3_i32_1239
  let c2_i32_1240 : BitVec 32 := 2#32
  let v1832 : Index := Scalar.indexCast c2_i32_1240
  let c0_i32_602 : BitVec 32 := 0#32
  let c1_i32_604 : BitVec 32 := 1#32
  let arg15 : BitVec 32 := Scf.iv c0_i32_602 c1_i32_604 k0_t5
  let v1833 : Index := Scalar.indexCast arg15
  let c480_1241 : Index := 480#32
  ![3, 2, v1833.toNat, 480]
def k0_off1992 (k0_t5 : Fin k0_t5_loop.trips) : Fin 4 → Nat :=
  let c1_i32_1242 : BitVec 32 := 1#32
  let v1837 : Index := Scalar.indexCast c1_i32_1242
  let c2_i32_1243 : BitVec 32 := 2#32
  let v1838 : Index := Scalar.indexCast c2_i32_1243
  let c0_i32_602 : BitVec 32 := 0#32
  let c1_i32_604 : BitVec 32 := 1#32
  let arg15 : BitVec 32 := Scf.iv c0_i32_602 c1_i32_604 k0_t5
  let v1839 : Index := Scalar.indexCast arg15
  let c480_1244 : Index := 480#32
  ![1, 2, v1839.toNat, 480]
def k0_off1993 (k0_t5 : Fin k0_t5_loop.trips) : Fin 4 → Nat :=
  let c3_i32_1245 : BitVec 32 := 3#32
  let v1843 : Index := Scalar.indexCast c3_i32_1245
  let c2_i32_1246 : BitVec 32 := 2#32
  let v1844 : Index := Scalar.indexCast c2_i32_1246
  let c0_i32_602 : BitVec 32 := 0#32
  let c1_i32_604 : BitVec 32 := 1#32
  let arg15 : BitVec 32 := Scf.iv c0_i32_602 c1_i32_604 k0_t5
  let v1845 : Index := Scalar.indexCast arg15
  let c496_1247 : Index := 496#32
  ![3, 2, v1845.toNat, 496]
def k0_off1994 (k0_t5 : Fin k0_t5_loop.trips) : Fin 4 → Nat :=
  let c1_i32_1248 : BitVec 32 := 1#32
  let v1849 : Index := Scalar.indexCast c1_i32_1248
  let c2_i32_1249 : BitVec 32 := 2#32
  let v1850 : Index := Scalar.indexCast c2_i32_1249
  let c0_i32_602 : BitVec 32 := 0#32
  let c1_i32_604 : BitVec 32 := 1#32
  let arg15 : BitVec 32 := Scf.iv c0_i32_602 c1_i32_604 k0_t5
  let v1851 : Index := Scalar.indexCast arg15
  let c496_1250 : Index := 496#32
  ![1, 2, v1851.toNat, 496]
def k0_off1995 (k0_t5 : Fin k0_t5_loop.trips) : Fin 4 → Nat :=
  let c3_i32_1251 : BitVec 32 := 3#32
  let v1855 : Index := Scalar.indexCast c3_i32_1251
  let c3_i32_1252 : BitVec 32 := 3#32
  let v1856 : Index := Scalar.indexCast c3_i32_1252
  let c0_i32_602 : BitVec 32 := 0#32
  let c1_i32_604 : BitVec 32 := 1#32
  let arg15 : BitVec 32 := Scf.iv c0_i32_602 c1_i32_604 k0_t5
  let v1857 : Index := Scalar.indexCast arg15
  let c0_1253 : Index := 0#32
  ![3, 3, v1857.toNat, 0]
def k0_off1996 (k0_t5 : Fin k0_t5_loop.trips) : Fin 4 → Nat :=
  let c1_i32_1254 : BitVec 32 := 1#32
  let v1861 : Index := Scalar.indexCast c1_i32_1254
  let c3_i32_1255 : BitVec 32 := 3#32
  let v1862 : Index := Scalar.indexCast c3_i32_1255
  let c0_i32_602 : BitVec 32 := 0#32
  let c1_i32_604 : BitVec 32 := 1#32
  let arg15 : BitVec 32 := Scf.iv c0_i32_602 c1_i32_604 k0_t5
  let v1863 : Index := Scalar.indexCast arg15
  let c0_1256 : Index := 0#32
  ![1, 3, v1863.toNat, 0]
def k0_off1997 (k0_t5 : Fin k0_t5_loop.trips) : Fin 4 → Nat :=
  let c3_i32_1257 : BitVec 32 := 3#32
  let v1867 : Index := Scalar.indexCast c3_i32_1257
  let c3_i32_1258 : BitVec 32 := 3#32
  let v1868 : Index := Scalar.indexCast c3_i32_1258
  let c0_i32_602 : BitVec 32 := 0#32
  let c1_i32_604 : BitVec 32 := 1#32
  let arg15 : BitVec 32 := Scf.iv c0_i32_602 c1_i32_604 k0_t5
  let v1869 : Index := Scalar.indexCast arg15
  let c16_1259 : Index := 16#32
  ![3, 3, v1869.toNat, 16]
def k0_off1998 (k0_t5 : Fin k0_t5_loop.trips) : Fin 4 → Nat :=
  let c1_i32_1260 : BitVec 32 := 1#32
  let v1873 : Index := Scalar.indexCast c1_i32_1260
  let c3_i32_1261 : BitVec 32 := 3#32
  let v1874 : Index := Scalar.indexCast c3_i32_1261
  let c0_i32_602 : BitVec 32 := 0#32
  let c1_i32_604 : BitVec 32 := 1#32
  let arg15 : BitVec 32 := Scf.iv c0_i32_602 c1_i32_604 k0_t5
  let v1875 : Index := Scalar.indexCast arg15
  let c16_1262 : Index := 16#32
  ![1, 3, v1875.toNat, 16]
def k0_off1999 (k0_t5 : Fin k0_t5_loop.trips) : Fin 4 → Nat :=
  let c3_i32_1263 : BitVec 32 := 3#32
  let v1879 : Index := Scalar.indexCast c3_i32_1263
  let c3_i32_1264 : BitVec 32 := 3#32
  let v1880 : Index := Scalar.indexCast c3_i32_1264
  let c0_i32_602 : BitVec 32 := 0#32
  let c1_i32_604 : BitVec 32 := 1#32
  let arg15 : BitVec 32 := Scf.iv c0_i32_602 c1_i32_604 k0_t5
  let v1881 : Index := Scalar.indexCast arg15
  let c32_1265 : Index := 32#32
  ![3, 3, v1881.toNat, 32]
def k0_off2000 (k0_t5 : Fin k0_t5_loop.trips) : Fin 4 → Nat :=
  let c1_i32_1266 : BitVec 32 := 1#32
  let v1885 : Index := Scalar.indexCast c1_i32_1266
  let c3_i32_1267 : BitVec 32 := 3#32
  let v1886 : Index := Scalar.indexCast c3_i32_1267
  let c0_i32_602 : BitVec 32 := 0#32
  let c1_i32_604 : BitVec 32 := 1#32
  let arg15 : BitVec 32 := Scf.iv c0_i32_602 c1_i32_604 k0_t5
  let v1887 : Index := Scalar.indexCast arg15
  let c32_1268 : Index := 32#32
  ![1, 3, v1887.toNat, 32]
def k0_off2001 (k0_t5 : Fin k0_t5_loop.trips) : Fin 4 → Nat :=
  let c3_i32_1269 : BitVec 32 := 3#32
  let v1891 : Index := Scalar.indexCast c3_i32_1269
  let c3_i32_1270 : BitVec 32 := 3#32
  let v1892 : Index := Scalar.indexCast c3_i32_1270
  let c0_i32_602 : BitVec 32 := 0#32
  let c1_i32_604 : BitVec 32 := 1#32
  let arg15 : BitVec 32 := Scf.iv c0_i32_602 c1_i32_604 k0_t5
  let v1893 : Index := Scalar.indexCast arg15
  let c48_1271 : Index := 48#32
  ![3, 3, v1893.toNat, 48]
def k0_off2002 (k0_t5 : Fin k0_t5_loop.trips) : Fin 4 → Nat :=
  let c1_i32_1272 : BitVec 32 := 1#32
  let v1897 : Index := Scalar.indexCast c1_i32_1272
  let c3_i32_1273 : BitVec 32 := 3#32
  let v1898 : Index := Scalar.indexCast c3_i32_1273
  let c0_i32_602 : BitVec 32 := 0#32
  let c1_i32_604 : BitVec 32 := 1#32
  let arg15 : BitVec 32 := Scf.iv c0_i32_602 c1_i32_604 k0_t5
  let v1899 : Index := Scalar.indexCast arg15
  let c48_1274 : Index := 48#32
  ![1, 3, v1899.toNat, 48]
def k0_off2003 (k0_t5 : Fin k0_t5_loop.trips) : Fin 4 → Nat :=
  let c3_i32_1275 : BitVec 32 := 3#32
  let v1903 : Index := Scalar.indexCast c3_i32_1275
  let c3_i32_1276 : BitVec 32 := 3#32
  let v1904 : Index := Scalar.indexCast c3_i32_1276
  let c0_i32_602 : BitVec 32 := 0#32
  let c1_i32_604 : BitVec 32 := 1#32
  let arg15 : BitVec 32 := Scf.iv c0_i32_602 c1_i32_604 k0_t5
  let v1905 : Index := Scalar.indexCast arg15
  let c64_1277 : Index := 64#32
  ![3, 3, v1905.toNat, 64]
def k0_off2004 (k0_t5 : Fin k0_t5_loop.trips) : Fin 4 → Nat :=
  let c1_i32_1278 : BitVec 32 := 1#32
  let v1909 : Index := Scalar.indexCast c1_i32_1278
  let c3_i32_1279 : BitVec 32 := 3#32
  let v1910 : Index := Scalar.indexCast c3_i32_1279
  let c0_i32_602 : BitVec 32 := 0#32
  let c1_i32_604 : BitVec 32 := 1#32
  let arg15 : BitVec 32 := Scf.iv c0_i32_602 c1_i32_604 k0_t5
  let v1911 : Index := Scalar.indexCast arg15
  let c64_1280 : Index := 64#32
  ![1, 3, v1911.toNat, 64]
def k0_off2005 (k0_t5 : Fin k0_t5_loop.trips) : Fin 4 → Nat :=
  let c3_i32_1281 : BitVec 32 := 3#32
  let v1915 : Index := Scalar.indexCast c3_i32_1281
  let c3_i32_1282 : BitVec 32 := 3#32
  let v1916 : Index := Scalar.indexCast c3_i32_1282
  let c0_i32_602 : BitVec 32 := 0#32
  let c1_i32_604 : BitVec 32 := 1#32
  let arg15 : BitVec 32 := Scf.iv c0_i32_602 c1_i32_604 k0_t5
  let v1917 : Index := Scalar.indexCast arg15
  let c80_1283 : Index := 80#32
  ![3, 3, v1917.toNat, 80]
def k0_off2006 (k0_t5 : Fin k0_t5_loop.trips) : Fin 4 → Nat :=
  let c1_i32_1284 : BitVec 32 := 1#32
  let v1921 : Index := Scalar.indexCast c1_i32_1284
  let c3_i32_1285 : BitVec 32 := 3#32
  let v1922 : Index := Scalar.indexCast c3_i32_1285
  let c0_i32_602 : BitVec 32 := 0#32
  let c1_i32_604 : BitVec 32 := 1#32
  let arg15 : BitVec 32 := Scf.iv c0_i32_602 c1_i32_604 k0_t5
  let v1923 : Index := Scalar.indexCast arg15
  let c80_1286 : Index := 80#32
  ![1, 3, v1923.toNat, 80]
def k0_off2007 (k0_t5 : Fin k0_t5_loop.trips) : Fin 4 → Nat :=
  let c3_i32_1287 : BitVec 32 := 3#32
  let v1927 : Index := Scalar.indexCast c3_i32_1287
  let c3_i32_1288 : BitVec 32 := 3#32
  let v1928 : Index := Scalar.indexCast c3_i32_1288
  let c0_i32_602 : BitVec 32 := 0#32
  let c1_i32_604 : BitVec 32 := 1#32
  let arg15 : BitVec 32 := Scf.iv c0_i32_602 c1_i32_604 k0_t5
  let v1929 : Index := Scalar.indexCast arg15
  let c96_1289 : Index := 96#32
  ![3, 3, v1929.toNat, 96]
def k0_off2008 (k0_t5 : Fin k0_t5_loop.trips) : Fin 4 → Nat :=
  let c1_i32_1290 : BitVec 32 := 1#32
  let v1933 : Index := Scalar.indexCast c1_i32_1290
  let c3_i32_1291 : BitVec 32 := 3#32
  let v1934 : Index := Scalar.indexCast c3_i32_1291
  let c0_i32_602 : BitVec 32 := 0#32
  let c1_i32_604 : BitVec 32 := 1#32
  let arg15 : BitVec 32 := Scf.iv c0_i32_602 c1_i32_604 k0_t5
  let v1935 : Index := Scalar.indexCast arg15
  let c96_1292 : Index := 96#32
  ![1, 3, v1935.toNat, 96]
def k0_off2009 (k0_t5 : Fin k0_t5_loop.trips) : Fin 4 → Nat :=
  let c3_i32_1293 : BitVec 32 := 3#32
  let v1939 : Index := Scalar.indexCast c3_i32_1293
  let c3_i32_1294 : BitVec 32 := 3#32
  let v1940 : Index := Scalar.indexCast c3_i32_1294
  let c0_i32_602 : BitVec 32 := 0#32
  let c1_i32_604 : BitVec 32 := 1#32
  let arg15 : BitVec 32 := Scf.iv c0_i32_602 c1_i32_604 k0_t5
  let v1941 : Index := Scalar.indexCast arg15
  let c112_1295 : Index := 112#32
  ![3, 3, v1941.toNat, 112]
def k0_off2010 (k0_t5 : Fin k0_t5_loop.trips) : Fin 4 → Nat :=
  let c1_i32_1296 : BitVec 32 := 1#32
  let v1945 : Index := Scalar.indexCast c1_i32_1296
  let c3_i32_1297 : BitVec 32 := 3#32
  let v1946 : Index := Scalar.indexCast c3_i32_1297
  let c0_i32_602 : BitVec 32 := 0#32
  let c1_i32_604 : BitVec 32 := 1#32
  let arg15 : BitVec 32 := Scf.iv c0_i32_602 c1_i32_604 k0_t5
  let v1947 : Index := Scalar.indexCast arg15
  let c112_1298 : Index := 112#32
  ![1, 3, v1947.toNat, 112]
def k0_off2011 (k0_t5 : Fin k0_t5_loop.trips) : Fin 4 → Nat :=
  let c3_i32_1299 : BitVec 32 := 3#32
  let v1951 : Index := Scalar.indexCast c3_i32_1299
  let c3_i32_1300 : BitVec 32 := 3#32
  let v1952 : Index := Scalar.indexCast c3_i32_1300
  let c0_i32_602 : BitVec 32 := 0#32
  let c1_i32_604 : BitVec 32 := 1#32
  let arg15 : BitVec 32 := Scf.iv c0_i32_602 c1_i32_604 k0_t5
  let v1953 : Index := Scalar.indexCast arg15
  let c128_1301 : Index := 128#32
  ![3, 3, v1953.toNat, 128]
def k0_off2012 (k0_t5 : Fin k0_t5_loop.trips) : Fin 4 → Nat :=
  let c1_i32_1302 : BitVec 32 := 1#32
  let v1957 : Index := Scalar.indexCast c1_i32_1302
  let c3_i32_1303 : BitVec 32 := 3#32
  let v1958 : Index := Scalar.indexCast c3_i32_1303
  let c0_i32_602 : BitVec 32 := 0#32
  let c1_i32_604 : BitVec 32 := 1#32
  let arg15 : BitVec 32 := Scf.iv c0_i32_602 c1_i32_604 k0_t5
  let v1959 : Index := Scalar.indexCast arg15
  let c128_1304 : Index := 128#32
  ![1, 3, v1959.toNat, 128]
def k0_off2013 (k0_t5 : Fin k0_t5_loop.trips) : Fin 4 → Nat :=
  let c3_i32_1305 : BitVec 32 := 3#32
  let v1963 : Index := Scalar.indexCast c3_i32_1305
  let c3_i32_1306 : BitVec 32 := 3#32
  let v1964 : Index := Scalar.indexCast c3_i32_1306
  let c0_i32_602 : BitVec 32 := 0#32
  let c1_i32_604 : BitVec 32 := 1#32
  let arg15 : BitVec 32 := Scf.iv c0_i32_602 c1_i32_604 k0_t5
  let v1965 : Index := Scalar.indexCast arg15
  let c144_1307 : Index := 144#32
  ![3, 3, v1965.toNat, 144]
def k0_off2014 (k0_t5 : Fin k0_t5_loop.trips) : Fin 4 → Nat :=
  let c1_i32_1308 : BitVec 32 := 1#32
  let v1969 : Index := Scalar.indexCast c1_i32_1308
  let c3_i32_1309 : BitVec 32 := 3#32
  let v1970 : Index := Scalar.indexCast c3_i32_1309
  let c0_i32_602 : BitVec 32 := 0#32
  let c1_i32_604 : BitVec 32 := 1#32
  let arg15 : BitVec 32 := Scf.iv c0_i32_602 c1_i32_604 k0_t5
  let v1971 : Index := Scalar.indexCast arg15
  let c144_1310 : Index := 144#32
  ![1, 3, v1971.toNat, 144]
def k0_off2015 (k0_t5 : Fin k0_t5_loop.trips) : Fin 4 → Nat :=
  let c3_i32_1311 : BitVec 32 := 3#32
  let v1975 : Index := Scalar.indexCast c3_i32_1311
  let c3_i32_1312 : BitVec 32 := 3#32
  let v1976 : Index := Scalar.indexCast c3_i32_1312
  let c0_i32_602 : BitVec 32 := 0#32
  let c1_i32_604 : BitVec 32 := 1#32
  let arg15 : BitVec 32 := Scf.iv c0_i32_602 c1_i32_604 k0_t5
  let v1977 : Index := Scalar.indexCast arg15
  let c160_1313 : Index := 160#32
  ![3, 3, v1977.toNat, 160]
def k0_off2016 (k0_t5 : Fin k0_t5_loop.trips) : Fin 4 → Nat :=
  let c1_i32_1314 : BitVec 32 := 1#32
  let v1981 : Index := Scalar.indexCast c1_i32_1314
  let c3_i32_1315 : BitVec 32 := 3#32
  let v1982 : Index := Scalar.indexCast c3_i32_1315
  let c0_i32_602 : BitVec 32 := 0#32
  let c1_i32_604 : BitVec 32 := 1#32
  let arg15 : BitVec 32 := Scf.iv c0_i32_602 c1_i32_604 k0_t5
  let v1983 : Index := Scalar.indexCast arg15
  let c160_1316 : Index := 160#32
  ![1, 3, v1983.toNat, 160]
def k0_off2017 (k0_t5 : Fin k0_t5_loop.trips) : Fin 4 → Nat :=
  let c3_i32_1317 : BitVec 32 := 3#32
  let v1987 : Index := Scalar.indexCast c3_i32_1317
  let c3_i32_1318 : BitVec 32 := 3#32
  let v1988 : Index := Scalar.indexCast c3_i32_1318
  let c0_i32_602 : BitVec 32 := 0#32
  let c1_i32_604 : BitVec 32 := 1#32
  let arg15 : BitVec 32 := Scf.iv c0_i32_602 c1_i32_604 k0_t5
  let v1989 : Index := Scalar.indexCast arg15
  let c176_1319 : Index := 176#32
  ![3, 3, v1989.toNat, 176]
def k0_off2018 (k0_t5 : Fin k0_t5_loop.trips) : Fin 4 → Nat :=
  let c1_i32_1320 : BitVec 32 := 1#32
  let v1993 : Index := Scalar.indexCast c1_i32_1320
  let c3_i32_1321 : BitVec 32 := 3#32
  let v1994 : Index := Scalar.indexCast c3_i32_1321
  let c0_i32_602 : BitVec 32 := 0#32
  let c1_i32_604 : BitVec 32 := 1#32
  let arg15 : BitVec 32 := Scf.iv c0_i32_602 c1_i32_604 k0_t5
  let v1995 : Index := Scalar.indexCast arg15
  let c176_1322 : Index := 176#32
  ![1, 3, v1995.toNat, 176]
def k0_off2019 (k0_t5 : Fin k0_t5_loop.trips) : Fin 4 → Nat :=
  let c3_i32_1323 : BitVec 32 := 3#32
  let v1999 : Index := Scalar.indexCast c3_i32_1323
  let c3_i32_1324 : BitVec 32 := 3#32
  let v2000 : Index := Scalar.indexCast c3_i32_1324
  let c0_i32_602 : BitVec 32 := 0#32
  let c1_i32_604 : BitVec 32 := 1#32
  let arg15 : BitVec 32 := Scf.iv c0_i32_602 c1_i32_604 k0_t5
  let v2001 : Index := Scalar.indexCast arg15
  let c192_1325 : Index := 192#32
  ![3, 3, v2001.toNat, 192]
def k0_off2020 (k0_t5 : Fin k0_t5_loop.trips) : Fin 4 → Nat :=
  let c1_i32_1326 : BitVec 32 := 1#32
  let v2005 : Index := Scalar.indexCast c1_i32_1326
  let c3_i32_1327 : BitVec 32 := 3#32
  let v2006 : Index := Scalar.indexCast c3_i32_1327
  let c0_i32_602 : BitVec 32 := 0#32
  let c1_i32_604 : BitVec 32 := 1#32
  let arg15 : BitVec 32 := Scf.iv c0_i32_602 c1_i32_604 k0_t5
  let v2007 : Index := Scalar.indexCast arg15
  let c192_1328 : Index := 192#32
  ![1, 3, v2007.toNat, 192]
def k0_off2021 (k0_t5 : Fin k0_t5_loop.trips) : Fin 4 → Nat :=
  let c3_i32_1329 : BitVec 32 := 3#32
  let v2011 : Index := Scalar.indexCast c3_i32_1329
  let c3_i32_1330 : BitVec 32 := 3#32
  let v2012 : Index := Scalar.indexCast c3_i32_1330
  let c0_i32_602 : BitVec 32 := 0#32
  let c1_i32_604 : BitVec 32 := 1#32
  let arg15 : BitVec 32 := Scf.iv c0_i32_602 c1_i32_604 k0_t5
  let v2013 : Index := Scalar.indexCast arg15
  let c208_1331 : Index := 208#32
  ![3, 3, v2013.toNat, 208]
def k0_off2022 (k0_t5 : Fin k0_t5_loop.trips) : Fin 4 → Nat :=
  let c1_i32_1332 : BitVec 32 := 1#32
  let v2017 : Index := Scalar.indexCast c1_i32_1332
  let c3_i32_1333 : BitVec 32 := 3#32
  let v2018 : Index := Scalar.indexCast c3_i32_1333
  let c0_i32_602 : BitVec 32 := 0#32
  let c1_i32_604 : BitVec 32 := 1#32
  let arg15 : BitVec 32 := Scf.iv c0_i32_602 c1_i32_604 k0_t5
  let v2019 : Index := Scalar.indexCast arg15
  let c208_1334 : Index := 208#32
  ![1, 3, v2019.toNat, 208]
def k0_off2023 (k0_t5 : Fin k0_t5_loop.trips) : Fin 4 → Nat :=
  let c3_i32_1335 : BitVec 32 := 3#32
  let v2023 : Index := Scalar.indexCast c3_i32_1335
  let c3_i32_1336 : BitVec 32 := 3#32
  let v2024 : Index := Scalar.indexCast c3_i32_1336
  let c0_i32_602 : BitVec 32 := 0#32
  let c1_i32_604 : BitVec 32 := 1#32
  let arg15 : BitVec 32 := Scf.iv c0_i32_602 c1_i32_604 k0_t5
  let v2025 : Index := Scalar.indexCast arg15
  let c224_1337 : Index := 224#32
  ![3, 3, v2025.toNat, 224]
def k0_off2024 (k0_t5 : Fin k0_t5_loop.trips) : Fin 4 → Nat :=
  let c1_i32_1338 : BitVec 32 := 1#32
  let v2029 : Index := Scalar.indexCast c1_i32_1338
  let c3_i32_1339 : BitVec 32 := 3#32
  let v2030 : Index := Scalar.indexCast c3_i32_1339
  let c0_i32_602 : BitVec 32 := 0#32
  let c1_i32_604 : BitVec 32 := 1#32
  let arg15 : BitVec 32 := Scf.iv c0_i32_602 c1_i32_604 k0_t5
  let v2031 : Index := Scalar.indexCast arg15
  let c224_1340 : Index := 224#32
  ![1, 3, v2031.toNat, 224]
def k0_off2025 (k0_t5 : Fin k0_t5_loop.trips) : Fin 4 → Nat :=
  let c3_i32_1341 : BitVec 32 := 3#32
  let v2035 : Index := Scalar.indexCast c3_i32_1341
  let c3_i32_1342 : BitVec 32 := 3#32
  let v2036 : Index := Scalar.indexCast c3_i32_1342
  let c0_i32_602 : BitVec 32 := 0#32
  let c1_i32_604 : BitVec 32 := 1#32
  let arg15 : BitVec 32 := Scf.iv c0_i32_602 c1_i32_604 k0_t5
  let v2037 : Index := Scalar.indexCast arg15
  let c240_1343 : Index := 240#32
  ![3, 3, v2037.toNat, 240]
def k0_off2026 (k0_t5 : Fin k0_t5_loop.trips) : Fin 4 → Nat :=
  let c1_i32_1344 : BitVec 32 := 1#32
  let v2041 : Index := Scalar.indexCast c1_i32_1344
  let c3_i32_1345 : BitVec 32 := 3#32
  let v2042 : Index := Scalar.indexCast c3_i32_1345
  let c0_i32_602 : BitVec 32 := 0#32
  let c1_i32_604 : BitVec 32 := 1#32
  let arg15 : BitVec 32 := Scf.iv c0_i32_602 c1_i32_604 k0_t5
  let v2043 : Index := Scalar.indexCast arg15
  let c240_1346 : Index := 240#32
  ![1, 3, v2043.toNat, 240]
def k0_off2027 (k0_t5 : Fin k0_t5_loop.trips) : Fin 4 → Nat :=
  let c3_i32_1347 : BitVec 32 := 3#32
  let v2047 : Index := Scalar.indexCast c3_i32_1347
  let c3_i32_1348 : BitVec 32 := 3#32
  let v2048 : Index := Scalar.indexCast c3_i32_1348
  let c0_i32_602 : BitVec 32 := 0#32
  let c1_i32_604 : BitVec 32 := 1#32
  let arg15 : BitVec 32 := Scf.iv c0_i32_602 c1_i32_604 k0_t5
  let v2049 : Index := Scalar.indexCast arg15
  let c256_1349 : Index := 256#32
  ![3, 3, v2049.toNat, 256]
def k0_off2028 (k0_t5 : Fin k0_t5_loop.trips) : Fin 4 → Nat :=
  let c1_i32_1350 : BitVec 32 := 1#32
  let v2053 : Index := Scalar.indexCast c1_i32_1350
  let c3_i32_1351 : BitVec 32 := 3#32
  let v2054 : Index := Scalar.indexCast c3_i32_1351
  let c0_i32_602 : BitVec 32 := 0#32
  let c1_i32_604 : BitVec 32 := 1#32
  let arg15 : BitVec 32 := Scf.iv c0_i32_602 c1_i32_604 k0_t5
  let v2055 : Index := Scalar.indexCast arg15
  let c256_1352 : Index := 256#32
  ![1, 3, v2055.toNat, 256]
def k0_off2029 (k0_t5 : Fin k0_t5_loop.trips) : Fin 4 → Nat :=
  let c3_i32_1353 : BitVec 32 := 3#32
  let v2059 : Index := Scalar.indexCast c3_i32_1353
  let c3_i32_1354 : BitVec 32 := 3#32
  let v2060 : Index := Scalar.indexCast c3_i32_1354
  let c0_i32_602 : BitVec 32 := 0#32
  let c1_i32_604 : BitVec 32 := 1#32
  let arg15 : BitVec 32 := Scf.iv c0_i32_602 c1_i32_604 k0_t5
  let v2061 : Index := Scalar.indexCast arg15
  let c272_1355 : Index := 272#32
  ![3, 3, v2061.toNat, 272]
def k0_off2030 (k0_t5 : Fin k0_t5_loop.trips) : Fin 4 → Nat :=
  let c1_i32_1356 : BitVec 32 := 1#32
  let v2065 : Index := Scalar.indexCast c1_i32_1356
  let c3_i32_1357 : BitVec 32 := 3#32
  let v2066 : Index := Scalar.indexCast c3_i32_1357
  let c0_i32_602 : BitVec 32 := 0#32
  let c1_i32_604 : BitVec 32 := 1#32
  let arg15 : BitVec 32 := Scf.iv c0_i32_602 c1_i32_604 k0_t5
  let v2067 : Index := Scalar.indexCast arg15
  let c272_1358 : Index := 272#32
  ![1, 3, v2067.toNat, 272]
def k0_off2031 (k0_t5 : Fin k0_t5_loop.trips) : Fin 4 → Nat :=
  let c3_i32_1359 : BitVec 32 := 3#32
  let v2071 : Index := Scalar.indexCast c3_i32_1359
  let c3_i32_1360 : BitVec 32 := 3#32
  let v2072 : Index := Scalar.indexCast c3_i32_1360
  let c0_i32_602 : BitVec 32 := 0#32
  let c1_i32_604 : BitVec 32 := 1#32
  let arg15 : BitVec 32 := Scf.iv c0_i32_602 c1_i32_604 k0_t5
  let v2073 : Index := Scalar.indexCast arg15
  let c288_1361 : Index := 288#32
  ![3, 3, v2073.toNat, 288]
def k0_off2032 (k0_t5 : Fin k0_t5_loop.trips) : Fin 4 → Nat :=
  let c1_i32_1362 : BitVec 32 := 1#32
  let v2077 : Index := Scalar.indexCast c1_i32_1362
  let c3_i32_1363 : BitVec 32 := 3#32
  let v2078 : Index := Scalar.indexCast c3_i32_1363
  let c0_i32_602 : BitVec 32 := 0#32
  let c1_i32_604 : BitVec 32 := 1#32
  let arg15 : BitVec 32 := Scf.iv c0_i32_602 c1_i32_604 k0_t5
  let v2079 : Index := Scalar.indexCast arg15
  let c288_1364 : Index := 288#32
  ![1, 3, v2079.toNat, 288]
def k0_off2033 (k0_t5 : Fin k0_t5_loop.trips) : Fin 4 → Nat :=
  let c3_i32_1365 : BitVec 32 := 3#32
  let v2083 : Index := Scalar.indexCast c3_i32_1365
  let c3_i32_1366 : BitVec 32 := 3#32
  let v2084 : Index := Scalar.indexCast c3_i32_1366
  let c0_i32_602 : BitVec 32 := 0#32
  let c1_i32_604 : BitVec 32 := 1#32
  let arg15 : BitVec 32 := Scf.iv c0_i32_602 c1_i32_604 k0_t5
  let v2085 : Index := Scalar.indexCast arg15
  let c304_1367 : Index := 304#32
  ![3, 3, v2085.toNat, 304]
def k0_off2034 (k0_t5 : Fin k0_t5_loop.trips) : Fin 4 → Nat :=
  let c1_i32_1368 : BitVec 32 := 1#32
  let v2089 : Index := Scalar.indexCast c1_i32_1368
  let c3_i32_1369 : BitVec 32 := 3#32
  let v2090 : Index := Scalar.indexCast c3_i32_1369
  let c0_i32_602 : BitVec 32 := 0#32
  let c1_i32_604 : BitVec 32 := 1#32
  let arg15 : BitVec 32 := Scf.iv c0_i32_602 c1_i32_604 k0_t5
  let v2091 : Index := Scalar.indexCast arg15
  let c304_1370 : Index := 304#32
  ![1, 3, v2091.toNat, 304]
def k0_off2035 (k0_t5 : Fin k0_t5_loop.trips) : Fin 4 → Nat :=
  let c3_i32_1371 : BitVec 32 := 3#32
  let v2095 : Index := Scalar.indexCast c3_i32_1371
  let c3_i32_1372 : BitVec 32 := 3#32
  let v2096 : Index := Scalar.indexCast c3_i32_1372
  let c0_i32_602 : BitVec 32 := 0#32
  let c1_i32_604 : BitVec 32 := 1#32
  let arg15 : BitVec 32 := Scf.iv c0_i32_602 c1_i32_604 k0_t5
  let v2097 : Index := Scalar.indexCast arg15
  let c320_1373 : Index := 320#32
  ![3, 3, v2097.toNat, 320]
def k0_off2036 (k0_t5 : Fin k0_t5_loop.trips) : Fin 4 → Nat :=
  let c1_i32_1374 : BitVec 32 := 1#32
  let v2101 : Index := Scalar.indexCast c1_i32_1374
  let c3_i32_1375 : BitVec 32 := 3#32
  let v2102 : Index := Scalar.indexCast c3_i32_1375
  let c0_i32_602 : BitVec 32 := 0#32
  let c1_i32_604 : BitVec 32 := 1#32
  let arg15 : BitVec 32 := Scf.iv c0_i32_602 c1_i32_604 k0_t5
  let v2103 : Index := Scalar.indexCast arg15
  let c320_1376 : Index := 320#32
  ![1, 3, v2103.toNat, 320]
def k0_off2037 (k0_t5 : Fin k0_t5_loop.trips) : Fin 4 → Nat :=
  let c3_i32_1377 : BitVec 32 := 3#32
  let v2107 : Index := Scalar.indexCast c3_i32_1377
  let c3_i32_1378 : BitVec 32 := 3#32
  let v2108 : Index := Scalar.indexCast c3_i32_1378
  let c0_i32_602 : BitVec 32 := 0#32
  let c1_i32_604 : BitVec 32 := 1#32
  let arg15 : BitVec 32 := Scf.iv c0_i32_602 c1_i32_604 k0_t5
  let v2109 : Index := Scalar.indexCast arg15
  let c336_1379 : Index := 336#32
  ![3, 3, v2109.toNat, 336]
def k0_off2038 (k0_t5 : Fin k0_t5_loop.trips) : Fin 4 → Nat :=
  let c1_i32_1380 : BitVec 32 := 1#32
  let v2113 : Index := Scalar.indexCast c1_i32_1380
  let c3_i32_1381 : BitVec 32 := 3#32
  let v2114 : Index := Scalar.indexCast c3_i32_1381
  let c0_i32_602 : BitVec 32 := 0#32
  let c1_i32_604 : BitVec 32 := 1#32
  let arg15 : BitVec 32 := Scf.iv c0_i32_602 c1_i32_604 k0_t5
  let v2115 : Index := Scalar.indexCast arg15
  let c336_1382 : Index := 336#32
  ![1, 3, v2115.toNat, 336]
def k0_off2039 (k0_t5 : Fin k0_t5_loop.trips) : Fin 4 → Nat :=
  let c3_i32_1383 : BitVec 32 := 3#32
  let v2119 : Index := Scalar.indexCast c3_i32_1383
  let c3_i32_1384 : BitVec 32 := 3#32
  let v2120 : Index := Scalar.indexCast c3_i32_1384
  let c0_i32_602 : BitVec 32 := 0#32
  let c1_i32_604 : BitVec 32 := 1#32
  let arg15 : BitVec 32 := Scf.iv c0_i32_602 c1_i32_604 k0_t5
  let v2121 : Index := Scalar.indexCast arg15
  let c352_1385 : Index := 352#32
  ![3, 3, v2121.toNat, 352]
def k0_off2040 (k0_t5 : Fin k0_t5_loop.trips) : Fin 4 → Nat :=
  let c1_i32_1386 : BitVec 32 := 1#32
  let v2125 : Index := Scalar.indexCast c1_i32_1386
  let c3_i32_1387 : BitVec 32 := 3#32
  let v2126 : Index := Scalar.indexCast c3_i32_1387
  let c0_i32_602 : BitVec 32 := 0#32
  let c1_i32_604 : BitVec 32 := 1#32
  let arg15 : BitVec 32 := Scf.iv c0_i32_602 c1_i32_604 k0_t5
  let v2127 : Index := Scalar.indexCast arg15
  let c352_1388 : Index := 352#32
  ![1, 3, v2127.toNat, 352]
def k0_off2041 (k0_t5 : Fin k0_t5_loop.trips) : Fin 4 → Nat :=
  let c3_i32_1389 : BitVec 32 := 3#32
  let v2131 : Index := Scalar.indexCast c3_i32_1389
  let c3_i32_1390 : BitVec 32 := 3#32
  let v2132 : Index := Scalar.indexCast c3_i32_1390
  let c0_i32_602 : BitVec 32 := 0#32
  let c1_i32_604 : BitVec 32 := 1#32
  let arg15 : BitVec 32 := Scf.iv c0_i32_602 c1_i32_604 k0_t5
  let v2133 : Index := Scalar.indexCast arg15
  let c368_1391 : Index := 368#32
  ![3, 3, v2133.toNat, 368]
def k0_off2042 (k0_t5 : Fin k0_t5_loop.trips) : Fin 4 → Nat :=
  let c1_i32_1392 : BitVec 32 := 1#32
  let v2137 : Index := Scalar.indexCast c1_i32_1392
  let c3_i32_1393 : BitVec 32 := 3#32
  let v2138 : Index := Scalar.indexCast c3_i32_1393
  let c0_i32_602 : BitVec 32 := 0#32
  let c1_i32_604 : BitVec 32 := 1#32
  let arg15 : BitVec 32 := Scf.iv c0_i32_602 c1_i32_604 k0_t5
  let v2139 : Index := Scalar.indexCast arg15
  let c368_1394 : Index := 368#32
  ![1, 3, v2139.toNat, 368]
def k0_off2043 (k0_t5 : Fin k0_t5_loop.trips) : Fin 4 → Nat :=
  let c3_i32_1395 : BitVec 32 := 3#32
  let v2143 : Index := Scalar.indexCast c3_i32_1395
  let c3_i32_1396 : BitVec 32 := 3#32
  let v2144 : Index := Scalar.indexCast c3_i32_1396
  let c0_i32_602 : BitVec 32 := 0#32
  let c1_i32_604 : BitVec 32 := 1#32
  let arg15 : BitVec 32 := Scf.iv c0_i32_602 c1_i32_604 k0_t5
  let v2145 : Index := Scalar.indexCast arg15
  let c384_1397 : Index := 384#32
  ![3, 3, v2145.toNat, 384]
def k0_off2044 (k0_t5 : Fin k0_t5_loop.trips) : Fin 4 → Nat :=
  let c1_i32_1398 : BitVec 32 := 1#32
  let v2149 : Index := Scalar.indexCast c1_i32_1398
  let c3_i32_1399 : BitVec 32 := 3#32
  let v2150 : Index := Scalar.indexCast c3_i32_1399
  let c0_i32_602 : BitVec 32 := 0#32
  let c1_i32_604 : BitVec 32 := 1#32
  let arg15 : BitVec 32 := Scf.iv c0_i32_602 c1_i32_604 k0_t5
  let v2151 : Index := Scalar.indexCast arg15
  let c384_1400 : Index := 384#32
  ![1, 3, v2151.toNat, 384]
def k0_off2045 (k0_t5 : Fin k0_t5_loop.trips) : Fin 4 → Nat :=
  let c3_i32_1401 : BitVec 32 := 3#32
  let v2155 : Index := Scalar.indexCast c3_i32_1401
  let c3_i32_1402 : BitVec 32 := 3#32
  let v2156 : Index := Scalar.indexCast c3_i32_1402
  let c0_i32_602 : BitVec 32 := 0#32
  let c1_i32_604 : BitVec 32 := 1#32
  let arg15 : BitVec 32 := Scf.iv c0_i32_602 c1_i32_604 k0_t5
  let v2157 : Index := Scalar.indexCast arg15
  let c400_1403 : Index := 400#32
  ![3, 3, v2157.toNat, 400]
def k0_off2046 (k0_t5 : Fin k0_t5_loop.trips) : Fin 4 → Nat :=
  let c1_i32_1404 : BitVec 32 := 1#32
  let v2161 : Index := Scalar.indexCast c1_i32_1404
  let c3_i32_1405 : BitVec 32 := 3#32
  let v2162 : Index := Scalar.indexCast c3_i32_1405
  let c0_i32_602 : BitVec 32 := 0#32
  let c1_i32_604 : BitVec 32 := 1#32
  let arg15 : BitVec 32 := Scf.iv c0_i32_602 c1_i32_604 k0_t5
  let v2163 : Index := Scalar.indexCast arg15
  let c400_1406 : Index := 400#32
  ![1, 3, v2163.toNat, 400]
def k0_off2047 (k0_t5 : Fin k0_t5_loop.trips) : Fin 4 → Nat :=
  let c3_i32_1407 : BitVec 32 := 3#32
  let v2167 : Index := Scalar.indexCast c3_i32_1407
  let c3_i32_1408 : BitVec 32 := 3#32
  let v2168 : Index := Scalar.indexCast c3_i32_1408
  let c0_i32_602 : BitVec 32 := 0#32
  let c1_i32_604 : BitVec 32 := 1#32
  let arg15 : BitVec 32 := Scf.iv c0_i32_602 c1_i32_604 k0_t5
  let v2169 : Index := Scalar.indexCast arg15
  let c416_1409 : Index := 416#32
  ![3, 3, v2169.toNat, 416]
def k0_off2048 (k0_t5 : Fin k0_t5_loop.trips) : Fin 4 → Nat :=
  let c1_i32_1410 : BitVec 32 := 1#32
  let v2173 : Index := Scalar.indexCast c1_i32_1410
  let c3_i32_1411 : BitVec 32 := 3#32
  let v2174 : Index := Scalar.indexCast c3_i32_1411
  let c0_i32_602 : BitVec 32 := 0#32
  let c1_i32_604 : BitVec 32 := 1#32
  let arg15 : BitVec 32 := Scf.iv c0_i32_602 c1_i32_604 k0_t5
  let v2175 : Index := Scalar.indexCast arg15
  let c416_1412 : Index := 416#32
  ![1, 3, v2175.toNat, 416]
def k0_off2049 (k0_t5 : Fin k0_t5_loop.trips) : Fin 4 → Nat :=
  let c3_i32_1413 : BitVec 32 := 3#32
  let v2179 : Index := Scalar.indexCast c3_i32_1413
  let c3_i32_1414 : BitVec 32 := 3#32
  let v2180 : Index := Scalar.indexCast c3_i32_1414
  let c0_i32_602 : BitVec 32 := 0#32
  let c1_i32_604 : BitVec 32 := 1#32
  let arg15 : BitVec 32 := Scf.iv c0_i32_602 c1_i32_604 k0_t5
  let v2181 : Index := Scalar.indexCast arg15
  let c432_1415 : Index := 432#32
  ![3, 3, v2181.toNat, 432]
def k0_off2050 (k0_t5 : Fin k0_t5_loop.trips) : Fin 4 → Nat :=
  let c1_i32_1416 : BitVec 32 := 1#32
  let v2185 : Index := Scalar.indexCast c1_i32_1416
  let c3_i32_1417 : BitVec 32 := 3#32
  let v2186 : Index := Scalar.indexCast c3_i32_1417
  let c0_i32_602 : BitVec 32 := 0#32
  let c1_i32_604 : BitVec 32 := 1#32
  let arg15 : BitVec 32 := Scf.iv c0_i32_602 c1_i32_604 k0_t5
  let v2187 : Index := Scalar.indexCast arg15
  let c432_1418 : Index := 432#32
  ![1, 3, v2187.toNat, 432]
def k0_off2051 (k0_t5 : Fin k0_t5_loop.trips) : Fin 4 → Nat :=
  let c3_i32_1419 : BitVec 32 := 3#32
  let v2191 : Index := Scalar.indexCast c3_i32_1419
  let c3_i32_1420 : BitVec 32 := 3#32
  let v2192 : Index := Scalar.indexCast c3_i32_1420
  let c0_i32_602 : BitVec 32 := 0#32
  let c1_i32_604 : BitVec 32 := 1#32
  let arg15 : BitVec 32 := Scf.iv c0_i32_602 c1_i32_604 k0_t5
  let v2193 : Index := Scalar.indexCast arg15
  let c448_1421 : Index := 448#32
  ![3, 3, v2193.toNat, 448]
def k0_off2052 (k0_t5 : Fin k0_t5_loop.trips) : Fin 4 → Nat :=
  let c1_i32_1422 : BitVec 32 := 1#32
  let v2197 : Index := Scalar.indexCast c1_i32_1422
  let c3_i32_1423 : BitVec 32 := 3#32
  let v2198 : Index := Scalar.indexCast c3_i32_1423
  let c0_i32_602 : BitVec 32 := 0#32
  let c1_i32_604 : BitVec 32 := 1#32
  let arg15 : BitVec 32 := Scf.iv c0_i32_602 c1_i32_604 k0_t5
  let v2199 : Index := Scalar.indexCast arg15
  let c448_1424 : Index := 448#32
  ![1, 3, v2199.toNat, 448]
def k0_off2053 (k0_t5 : Fin k0_t5_loop.trips) : Fin 4 → Nat :=
  let c3_i32_1425 : BitVec 32 := 3#32
  let v2203 : Index := Scalar.indexCast c3_i32_1425
  let c3_i32_1426 : BitVec 32 := 3#32
  let v2204 : Index := Scalar.indexCast c3_i32_1426
  let c0_i32_602 : BitVec 32 := 0#32
  let c1_i32_604 : BitVec 32 := 1#32
  let arg15 : BitVec 32 := Scf.iv c0_i32_602 c1_i32_604 k0_t5
  let v2205 : Index := Scalar.indexCast arg15
  let c464_1427 : Index := 464#32
  ![3, 3, v2205.toNat, 464]
def k0_off2054 (k0_t5 : Fin k0_t5_loop.trips) : Fin 4 → Nat :=
  let c1_i32_1428 : BitVec 32 := 1#32
  let v2209 : Index := Scalar.indexCast c1_i32_1428
  let c3_i32_1429 : BitVec 32 := 3#32
  let v2210 : Index := Scalar.indexCast c3_i32_1429
  let c0_i32_602 : BitVec 32 := 0#32
  let c1_i32_604 : BitVec 32 := 1#32
  let arg15 : BitVec 32 := Scf.iv c0_i32_602 c1_i32_604 k0_t5
  let v2211 : Index := Scalar.indexCast arg15
  let c464_1430 : Index := 464#32
  ![1, 3, v2211.toNat, 464]
def k0_off2055 (k0_t5 : Fin k0_t5_loop.trips) : Fin 4 → Nat :=
  let c3_i32_1431 : BitVec 32 := 3#32
  let v2215 : Index := Scalar.indexCast c3_i32_1431
  let c3_i32_1432 : BitVec 32 := 3#32
  let v2216 : Index := Scalar.indexCast c3_i32_1432
  let c0_i32_602 : BitVec 32 := 0#32
  let c1_i32_604 : BitVec 32 := 1#32
  let arg15 : BitVec 32 := Scf.iv c0_i32_602 c1_i32_604 k0_t5
  let v2217 : Index := Scalar.indexCast arg15
  let c480_1433 : Index := 480#32
  ![3, 3, v2217.toNat, 480]
def k0_off2056 (k0_t5 : Fin k0_t5_loop.trips) : Fin 4 → Nat :=
  let c1_i32_1434 : BitVec 32 := 1#32
  let v2221 : Index := Scalar.indexCast c1_i32_1434
  let c3_i32_1435 : BitVec 32 := 3#32
  let v2222 : Index := Scalar.indexCast c3_i32_1435
  let c0_i32_602 : BitVec 32 := 0#32
  let c1_i32_604 : BitVec 32 := 1#32
  let arg15 : BitVec 32 := Scf.iv c0_i32_602 c1_i32_604 k0_t5
  let v2223 : Index := Scalar.indexCast arg15
  let c480_1436 : Index := 480#32
  ![1, 3, v2223.toNat, 480]
def k0_off2057 (k0_t5 : Fin k0_t5_loop.trips) : Fin 4 → Nat :=
  let c3_i32_1437 : BitVec 32 := 3#32
  let v2227 : Index := Scalar.indexCast c3_i32_1437
  let c3_i32_1438 : BitVec 32 := 3#32
  let v2228 : Index := Scalar.indexCast c3_i32_1438
  let c0_i32_602 : BitVec 32 := 0#32
  let c1_i32_604 : BitVec 32 := 1#32
  let arg15 : BitVec 32 := Scf.iv c0_i32_602 c1_i32_604 k0_t5
  let v2229 : Index := Scalar.indexCast arg15
  let c496_1439 : Index := 496#32
  ![3, 3, v2229.toNat, 496]
def k0_off2058 (k0_t5 : Fin k0_t5_loop.trips) : Fin 4 → Nat :=
  let c1_i32_1440 : BitVec 32 := 1#32
  let v2233 : Index := Scalar.indexCast c1_i32_1440
  let c3_i32_1441 : BitVec 32 := 3#32
  let v2234 : Index := Scalar.indexCast c3_i32_1441
  let c0_i32_602 : BitVec 32 := 0#32
  let c1_i32_604 : BitVec 32 := 1#32
  let arg15 : BitVec 32 := Scf.iv c0_i32_602 c1_i32_604 k0_t5
  let v2235 : Index := Scalar.indexCast arg15
  let c496_1442 : Index := 496#32
  ![1, 3, v2235.toNat, 496]
def k0_off2059 (k0_t5 : Fin k0_t5_loop.trips) : Fin 3 → Nat :=
  let c3_i32_1443 : BitVec 32 := 3#32
  let v2239 : Index := Scalar.indexCast c3_i32_1443
  let c0_i32_602 : BitVec 32 := 0#32
  let c1_i32_604 : BitVec 32 := 1#32
  let arg15 : BitVec 32 := Scf.iv c0_i32_602 c1_i32_604 k0_t5
  let v2240 : Index := Scalar.indexCast arg15
  let c512 : Index := 512#32
  ![3, v2240.toNat, 512]
def k0_off2060 (k0_t5 : Fin k0_t5_loop.trips) : Fin 3 → Nat :=
  let c3_i32_1444 : BitVec 32 := 3#32
  let v2243 : Index := Scalar.indexCast c3_i32_1444
  let c0_i32_602 : BitVec 32 := 0#32
  let c1_i32_604 : BitVec 32 := 1#32
  let arg15 : BitVec 32 := Scf.iv c0_i32_602 c1_i32_604 k0_t5
  let v2244 : Index := Scalar.indexCast arg15
  let c528 : Index := 528#32
  ![3, v2244.toNat, 528]
def k0_off2061 (k0_t5 : Fin k0_t5_loop.trips) : Fin 3 → Nat :=
  let c3_i32_1445 : BitVec 32 := 3#32
  let v2247 : Index := Scalar.indexCast c3_i32_1445
  let c0_i32_602 : BitVec 32 := 0#32
  let c1_i32_604 : BitVec 32 := 1#32
  let arg15 : BitVec 32 := Scf.iv c0_i32_602 c1_i32_604 k0_t5
  let v2248 : Index := Scalar.indexCast arg15
  let c544 : Index := 544#32
  ![3, v2248.toNat, 544]
def k0_off2062 (k0_t5 : Fin k0_t5_loop.trips) : Fin 3 → Nat :=
  let c3_i32_1446 : BitVec 32 := 3#32
  let v2251 : Index := Scalar.indexCast c3_i32_1446
  let c0_i32_602 : BitVec 32 := 0#32
  let c1_i32_604 : BitVec 32 := 1#32
  let arg15 : BitVec 32 := Scf.iv c0_i32_602 c1_i32_604 k0_t5
  let v2252 : Index := Scalar.indexCast arg15
  let c560 : Index := 560#32
  ![3, v2252.toNat, 560]
def k0_off2063 (k0_t5 : Fin k0_t5_loop.trips) : Fin 3 → Nat :=
  let c3_i32_1447 : BitVec 32 := 3#32
  let v2255 : Index := Scalar.indexCast c3_i32_1447
  let c0_i32_602 : BitVec 32 := 0#32
  let c1_i32_604 : BitVec 32 := 1#32
  let arg15 : BitVec 32 := Scf.iv c0_i32_602 c1_i32_604 k0_t5
  let v2256 : Index := Scalar.indexCast arg15
  let c576 : Index := 576#32
  ![3, v2256.toNat, 576]
def k0_off2064 (k0_t5 : Fin k0_t5_loop.trips) : Fin 3 → Nat :=
  let c3_i32_1448 : BitVec 32 := 3#32
  let v2259 : Index := Scalar.indexCast c3_i32_1448
  let c0_i32_602 : BitVec 32 := 0#32
  let c1_i32_604 : BitVec 32 := 1#32
  let arg15 : BitVec 32 := Scf.iv c0_i32_602 c1_i32_604 k0_t5
  let v2260 : Index := Scalar.indexCast arg15
  let c592 : Index := 592#32
  ![3, v2260.toNat, 592]
def k0_off2065 (k0_t5 : Fin k0_t5_loop.trips) : Fin 3 → Nat :=
  let c3_i32_1449 : BitVec 32 := 3#32
  let v2263 : Index := Scalar.indexCast c3_i32_1449
  let c0_i32_602 : BitVec 32 := 0#32
  let c1_i32_604 : BitVec 32 := 1#32
  let arg15 : BitVec 32 := Scf.iv c0_i32_602 c1_i32_604 k0_t5
  let v2264 : Index := Scalar.indexCast arg15
  let c608 : Index := 608#32
  ![3, v2264.toNat, 608]
def k0_off2066 (k0_t5 : Fin k0_t5_loop.trips) : Fin 3 → Nat :=
  let c3_i32_1450 : BitVec 32 := 3#32
  let v2267 : Index := Scalar.indexCast c3_i32_1450
  let c0_i32_602 : BitVec 32 := 0#32
  let c1_i32_604 : BitVec 32 := 1#32
  let arg15 : BitVec 32 := Scf.iv c0_i32_602 c1_i32_604 k0_t5
  let v2268 : Index := Scalar.indexCast arg15
  let c624 : Index := 624#32
  ![3, v2268.toNat, 624]
def k0_off2067 (k0_t5 : Fin k0_t5_loop.trips) : Fin 3 → Nat :=
  let c3_i32_1451 : BitVec 32 := 3#32
  let v2271 : Index := Scalar.indexCast c3_i32_1451
  let c0_i32_602 : BitVec 32 := 0#32
  let c1_i32_604 : BitVec 32 := 1#32
  let arg15 : BitVec 32 := Scf.iv c0_i32_602 c1_i32_604 k0_t5
  let v2272 : Index := Scalar.indexCast arg15
  let c640 : Index := 640#32
  ![3, v2272.toNat, 640]
def k0_off2068 (k0_t5 : Fin k0_t5_loop.trips) : Fin 3 → Nat :=
  let c3_i32_1452 : BitVec 32 := 3#32
  let v2275 : Index := Scalar.indexCast c3_i32_1452
  let c0_i32_602 : BitVec 32 := 0#32
  let c1_i32_604 : BitVec 32 := 1#32
  let arg15 : BitVec 32 := Scf.iv c0_i32_602 c1_i32_604 k0_t5
  let v2276 : Index := Scalar.indexCast arg15
  let c656 : Index := 656#32
  ![3, v2276.toNat, 656]
def k0_off2069 (k0_t5 : Fin k0_t5_loop.trips) : Fin 3 → Nat :=
  let c3_i32_1453 : BitVec 32 := 3#32
  let v2279 : Index := Scalar.indexCast c3_i32_1453
  let c0_i32_602 : BitVec 32 := 0#32
  let c1_i32_604 : BitVec 32 := 1#32
  let arg15 : BitVec 32 := Scf.iv c0_i32_602 c1_i32_604 k0_t5
  let v2280 : Index := Scalar.indexCast arg15
  let c672 : Index := 672#32
  ![3, v2280.toNat, 672]
def k0_off2070 (k0_t5 : Fin k0_t5_loop.trips) : Fin 3 → Nat :=
  let c3_i32_1454 : BitVec 32 := 3#32
  let v2283 : Index := Scalar.indexCast c3_i32_1454
  let c0_i32_602 : BitVec 32 := 0#32
  let c1_i32_604 : BitVec 32 := 1#32
  let arg15 : BitVec 32 := Scf.iv c0_i32_602 c1_i32_604 k0_t5
  let v2284 : Index := Scalar.indexCast arg15
  let c688 : Index := 688#32
  ![3, v2284.toNat, 688]
def k0_off2071 (k0_t5 : Fin k0_t5_loop.trips) : Fin 3 → Nat :=
  let c3_i32_1455 : BitVec 32 := 3#32
  let v2287 : Index := Scalar.indexCast c3_i32_1455
  let c0_i32_602 : BitVec 32 := 0#32
  let c1_i32_604 : BitVec 32 := 1#32
  let arg15 : BitVec 32 := Scf.iv c0_i32_602 c1_i32_604 k0_t5
  let v2288 : Index := Scalar.indexCast arg15
  let c704 : Index := 704#32
  ![3, v2288.toNat, 704]
def k0_off2072 (k0_t5 : Fin k0_t5_loop.trips) : Fin 3 → Nat :=
  let c3_i32_1456 : BitVec 32 := 3#32
  let v2291 : Index := Scalar.indexCast c3_i32_1456
  let c0_i32_602 : BitVec 32 := 0#32
  let c1_i32_604 : BitVec 32 := 1#32
  let arg15 : BitVec 32 := Scf.iv c0_i32_602 c1_i32_604 k0_t5
  let v2292 : Index := Scalar.indexCast arg15
  let c720 : Index := 720#32
  ![3, v2292.toNat, 720]
def k0_off2073 (k0_t5 : Fin k0_t5_loop.trips) : Fin 3 → Nat :=
  let c3_i32_1457 : BitVec 32 := 3#32
  let v2295 : Index := Scalar.indexCast c3_i32_1457
  let c0_i32_602 : BitVec 32 := 0#32
  let c1_i32_604 : BitVec 32 := 1#32
  let arg15 : BitVec 32 := Scf.iv c0_i32_602 c1_i32_604 k0_t5
  let v2296 : Index := Scalar.indexCast arg15
  let c736 : Index := 736#32
  ![3, v2296.toNat, 736]
def k0_off2074 (k0_t5 : Fin k0_t5_loop.trips) : Fin 3 → Nat :=
  let c3_i32_1458 : BitVec 32 := 3#32
  let v2299 : Index := Scalar.indexCast c3_i32_1458
  let c0_i32_602 : BitVec 32 := 0#32
  let c1_i32_604 : BitVec 32 := 1#32
  let arg15 : BitVec 32 := Scf.iv c0_i32_602 c1_i32_604 k0_t5
  let v2300 : Index := Scalar.indexCast arg15
  let c752 : Index := 752#32
  ![3, v2300.toNat, 752]
def k0_off2075 (k0_t5 : Fin k0_t5_loop.trips) : Fin 3 → Nat :=
  let c3_i32_1459 : BitVec 32 := 3#32
  let v2303 : Index := Scalar.indexCast c3_i32_1459
  let c0_i32_602 : BitVec 32 := 0#32
  let c1_i32_604 : BitVec 32 := 1#32
  let arg15 : BitVec 32 := Scf.iv c0_i32_602 c1_i32_604 k0_t5
  let v2304 : Index := Scalar.indexCast arg15
  let c768 : Index := 768#32
  ![3, v2304.toNat, 768]
def k0_off2076 (k0_t5 : Fin k0_t5_loop.trips) : Fin 3 → Nat :=
  let c3_i32_1460 : BitVec 32 := 3#32
  let v2307 : Index := Scalar.indexCast c3_i32_1460
  let c0_i32_602 : BitVec 32 := 0#32
  let c1_i32_604 : BitVec 32 := 1#32
  let arg15 : BitVec 32 := Scf.iv c0_i32_602 c1_i32_604 k0_t5
  let v2308 : Index := Scalar.indexCast arg15
  let c784 : Index := 784#32
  ![3, v2308.toNat, 784]
def k0_off2077 (k0_t5 : Fin k0_t5_loop.trips) : Fin 3 → Nat :=
  let c3_i32_1461 : BitVec 32 := 3#32
  let v2311 : Index := Scalar.indexCast c3_i32_1461
  let c0_i32_602 : BitVec 32 := 0#32
  let c1_i32_604 : BitVec 32 := 1#32
  let arg15 : BitVec 32 := Scf.iv c0_i32_602 c1_i32_604 k0_t5
  let v2312 : Index := Scalar.indexCast arg15
  let c800 : Index := 800#32
  ![3, v2312.toNat, 800]
def k0_off2078 (k0_t5 : Fin k0_t5_loop.trips) : Fin 3 → Nat :=
  let c3_i32_1462 : BitVec 32 := 3#32
  let v2315 : Index := Scalar.indexCast c3_i32_1462
  let c0_i32_602 : BitVec 32 := 0#32
  let c1_i32_604 : BitVec 32 := 1#32
  let arg15 : BitVec 32 := Scf.iv c0_i32_602 c1_i32_604 k0_t5
  let v2316 : Index := Scalar.indexCast arg15
  let c816 : Index := 816#32
  ![3, v2316.toNat, 816]
def k0_off2079 (k0_t5 : Fin k0_t5_loop.trips) : Fin 3 → Nat :=
  let c3_i32_1463 : BitVec 32 := 3#32
  let v2319 : Index := Scalar.indexCast c3_i32_1463
  let c0_i32_602 : BitVec 32 := 0#32
  let c1_i32_604 : BitVec 32 := 1#32
  let arg15 : BitVec 32 := Scf.iv c0_i32_602 c1_i32_604 k0_t5
  let v2320 : Index := Scalar.indexCast arg15
  let c832 : Index := 832#32
  ![3, v2320.toNat, 832]
def k0_off2080 (k0_t5 : Fin k0_t5_loop.trips) : Fin 3 → Nat :=
  let c3_i32_1464 : BitVec 32 := 3#32
  let v2323 : Index := Scalar.indexCast c3_i32_1464
  let c0_i32_602 : BitVec 32 := 0#32
  let c1_i32_604 : BitVec 32 := 1#32
  let arg15 : BitVec 32 := Scf.iv c0_i32_602 c1_i32_604 k0_t5
  let v2324 : Index := Scalar.indexCast arg15
  let c848 : Index := 848#32
  ![3, v2324.toNat, 848]
def k0_off2081 (k0_t5 : Fin k0_t5_loop.trips) : Fin 3 → Nat :=
  let c3_i32_1465 : BitVec 32 := 3#32
  let v2327 : Index := Scalar.indexCast c3_i32_1465
  let c0_i32_602 : BitVec 32 := 0#32
  let c1_i32_604 : BitVec 32 := 1#32
  let arg15 : BitVec 32 := Scf.iv c0_i32_602 c1_i32_604 k0_t5
  let v2328 : Index := Scalar.indexCast arg15
  let c864 : Index := 864#32
  ![3, v2328.toNat, 864]
def k0_off2082 (k0_t5 : Fin k0_t5_loop.trips) : Fin 3 → Nat :=
  let c3_i32_1466 : BitVec 32 := 3#32
  let v2331 : Index := Scalar.indexCast c3_i32_1466
  let c0_i32_602 : BitVec 32 := 0#32
  let c1_i32_604 : BitVec 32 := 1#32
  let arg15 : BitVec 32 := Scf.iv c0_i32_602 c1_i32_604 k0_t5
  let v2332 : Index := Scalar.indexCast arg15
  let c880 : Index := 880#32
  ![3, v2332.toNat, 880]
def k0_off2083 (k0_t5 : Fin k0_t5_loop.trips) : Fin 3 → Nat :=
  let c3_i32_1467 : BitVec 32 := 3#32
  let v2335 : Index := Scalar.indexCast c3_i32_1467
  let c0_i32_602 : BitVec 32 := 0#32
  let c1_i32_604 : BitVec 32 := 1#32
  let arg15 : BitVec 32 := Scf.iv c0_i32_602 c1_i32_604 k0_t5
  let v2336 : Index := Scalar.indexCast arg15
  let c896 : Index := 896#32
  ![3, v2336.toNat, 896]
def k0_off2084 (k0_t5 : Fin k0_t5_loop.trips) : Fin 3 → Nat :=
  let c3_i32_1468 : BitVec 32 := 3#32
  let v2339 : Index := Scalar.indexCast c3_i32_1468
  let c0_i32_602 : BitVec 32 := 0#32
  let c1_i32_604 : BitVec 32 := 1#32
  let arg15 : BitVec 32 := Scf.iv c0_i32_602 c1_i32_604 k0_t5
  let v2340 : Index := Scalar.indexCast arg15
  let c912 : Index := 912#32
  ![3, v2340.toNat, 912]
def k0_off2085 (k0_t5 : Fin k0_t5_loop.trips) : Fin 3 → Nat :=
  let c3_i32_1469 : BitVec 32 := 3#32
  let v2343 : Index := Scalar.indexCast c3_i32_1469
  let c0_i32_602 : BitVec 32 := 0#32
  let c1_i32_604 : BitVec 32 := 1#32
  let arg15 : BitVec 32 := Scf.iv c0_i32_602 c1_i32_604 k0_t5
  let v2344 : Index := Scalar.indexCast arg15
  let c928 : Index := 928#32
  ![3, v2344.toNat, 928]
def k0_off2086 (k0_t5 : Fin k0_t5_loop.trips) : Fin 3 → Nat :=
  let c3_i32_1470 : BitVec 32 := 3#32
  let v2347 : Index := Scalar.indexCast c3_i32_1470
  let c0_i32_602 : BitVec 32 := 0#32
  let c1_i32_604 : BitVec 32 := 1#32
  let arg15 : BitVec 32 := Scf.iv c0_i32_602 c1_i32_604 k0_t5
  let v2348 : Index := Scalar.indexCast arg15
  let c944 : Index := 944#32
  ![3, v2348.toNat, 944]
def k0_off2087 (k0_t5 : Fin k0_t5_loop.trips) : Fin 3 → Nat :=
  let c3_i32_1471 : BitVec 32 := 3#32
  let v2351 : Index := Scalar.indexCast c3_i32_1471
  let c0_i32_602 : BitVec 32 := 0#32
  let c1_i32_604 : BitVec 32 := 1#32
  let arg15 : BitVec 32 := Scf.iv c0_i32_602 c1_i32_604 k0_t5
  let v2352 : Index := Scalar.indexCast arg15
  let c960 : Index := 960#32
  ![3, v2352.toNat, 960]
def k0_off2088 (k0_t5 : Fin k0_t5_loop.trips) : Fin 3 → Nat :=
  let c3_i32_1472 : BitVec 32 := 3#32
  let v2355 : Index := Scalar.indexCast c3_i32_1472
  let c0_i32_602 : BitVec 32 := 0#32
  let c1_i32_604 : BitVec 32 := 1#32
  let arg15 : BitVec 32 := Scf.iv c0_i32_602 c1_i32_604 k0_t5
  let v2356 : Index := Scalar.indexCast arg15
  let c976 : Index := 976#32
  ![3, v2356.toNat, 976]
def k0_off2089 (k0_t5 : Fin k0_t5_loop.trips) : Fin 3 → Nat :=
  let c3_i32_1473 : BitVec 32 := 3#32
  let v2359 : Index := Scalar.indexCast c3_i32_1473
  let c0_i32_602 : BitVec 32 := 0#32
  let c1_i32_604 : BitVec 32 := 1#32
  let arg15 : BitVec 32 := Scf.iv c0_i32_602 c1_i32_604 k0_t5
  let v2360 : Index := Scalar.indexCast arg15
  let c992 : Index := 992#32
  ![3, v2360.toNat, 992]
def k0_off2090 (k0_t5 : Fin k0_t5_loop.trips) : Fin 3 → Nat :=
  let c3_i32_1474 : BitVec 32 := 3#32
  let v2363 : Index := Scalar.indexCast c3_i32_1474
  let c0_i32_602 : BitVec 32 := 0#32
  let c1_i32_604 : BitVec 32 := 1#32
  let arg15 : BitVec 32 := Scf.iv c0_i32_602 c1_i32_604 k0_t5
  let v2364 : Index := Scalar.indexCast arg15
  let c1008 : Index := 1008#32
  ![3, v2364.toNat, 1008]
def k0_off2091 (k0_t5 : Fin k0_t5_loop.trips) : Fin 4 → Nat :=
  let c3_i32_1475 : BitVec 32 := 3#32
  let v2367 : Index := Scalar.indexCast c3_i32_1475
  let c0_i32_1476 : BitVec 32 := 0#32
  let v2368 : Index := Scalar.indexCast c0_i32_1476
  let c0_i32_602 : BitVec 32 := 0#32
  let c1_i32_604 : BitVec 32 := 1#32
  let arg15 : BitVec 32 := Scf.iv c0_i32_602 c1_i32_604 k0_t5
  let v2369 : Index := Scalar.indexCast arg15
  let c512_1477 : Index := 512#32
  ![3, 0, v2369.toNat, 512]
def k0_off2092 (k0_t5 : Fin k0_t5_loop.trips) : Fin 4 → Nat :=
  let c1_i32_1478 : BitVec 32 := 1#32
  let v2373 : Index := Scalar.indexCast c1_i32_1478
  let c0_i32_1479 : BitVec 32 := 0#32
  let v2374 : Index := Scalar.indexCast c0_i32_1479
  let c0_i32_602 : BitVec 32 := 0#32
  let c1_i32_604 : BitVec 32 := 1#32
  let arg15 : BitVec 32 := Scf.iv c0_i32_602 c1_i32_604 k0_t5
  let v2375 : Index := Scalar.indexCast arg15
  let c512_1480 : Index := 512#32
  ![1, 0, v2375.toNat, 512]
def k0_off2093 (k0_t5 : Fin k0_t5_loop.trips) : Fin 4 → Nat :=
  let c3_i32_1481 : BitVec 32 := 3#32
  let v2379 : Index := Scalar.indexCast c3_i32_1481
  let c0_i32_1482 : BitVec 32 := 0#32
  let v2380 : Index := Scalar.indexCast c0_i32_1482
  let c0_i32_602 : BitVec 32 := 0#32
  let c1_i32_604 : BitVec 32 := 1#32
  let arg15 : BitVec 32 := Scf.iv c0_i32_602 c1_i32_604 k0_t5
  let v2381 : Index := Scalar.indexCast arg15
  let c528_1483 : Index := 528#32
  ![3, 0, v2381.toNat, 528]
def k0_off2094 (k0_t5 : Fin k0_t5_loop.trips) : Fin 4 → Nat :=
  let c1_i32_1484 : BitVec 32 := 1#32
  let v2385 : Index := Scalar.indexCast c1_i32_1484
  let c0_i32_1485 : BitVec 32 := 0#32
  let v2386 : Index := Scalar.indexCast c0_i32_1485
  let c0_i32_602 : BitVec 32 := 0#32
  let c1_i32_604 : BitVec 32 := 1#32
  let arg15 : BitVec 32 := Scf.iv c0_i32_602 c1_i32_604 k0_t5
  let v2387 : Index := Scalar.indexCast arg15
  let c528_1486 : Index := 528#32
  ![1, 0, v2387.toNat, 528]
def k0_off2095 (k0_t5 : Fin k0_t5_loop.trips) : Fin 4 → Nat :=
  let c3_i32_1487 : BitVec 32 := 3#32
  let v2391 : Index := Scalar.indexCast c3_i32_1487
  let c0_i32_1488 : BitVec 32 := 0#32
  let v2392 : Index := Scalar.indexCast c0_i32_1488
  let c0_i32_602 : BitVec 32 := 0#32
  let c1_i32_604 : BitVec 32 := 1#32
  let arg15 : BitVec 32 := Scf.iv c0_i32_602 c1_i32_604 k0_t5
  let v2393 : Index := Scalar.indexCast arg15
  let c544_1489 : Index := 544#32
  ![3, 0, v2393.toNat, 544]
def k0_off2096 (k0_t5 : Fin k0_t5_loop.trips) : Fin 4 → Nat :=
  let c1_i32_1490 : BitVec 32 := 1#32
  let v2397 : Index := Scalar.indexCast c1_i32_1490
  let c0_i32_1491 : BitVec 32 := 0#32
  let v2398 : Index := Scalar.indexCast c0_i32_1491
  let c0_i32_602 : BitVec 32 := 0#32
  let c1_i32_604 : BitVec 32 := 1#32
  let arg15 : BitVec 32 := Scf.iv c0_i32_602 c1_i32_604 k0_t5
  let v2399 : Index := Scalar.indexCast arg15
  let c544_1492 : Index := 544#32
  ![1, 0, v2399.toNat, 544]
def k0_off2097 (k0_t5 : Fin k0_t5_loop.trips) : Fin 4 → Nat :=
  let c3_i32_1493 : BitVec 32 := 3#32
  let v2403 : Index := Scalar.indexCast c3_i32_1493
  let c0_i32_1494 : BitVec 32 := 0#32
  let v2404 : Index := Scalar.indexCast c0_i32_1494
  let c0_i32_602 : BitVec 32 := 0#32
  let c1_i32_604 : BitVec 32 := 1#32
  let arg15 : BitVec 32 := Scf.iv c0_i32_602 c1_i32_604 k0_t5
  let v2405 : Index := Scalar.indexCast arg15
  let c560_1495 : Index := 560#32
  ![3, 0, v2405.toNat, 560]
def k0_off2098 (k0_t5 : Fin k0_t5_loop.trips) : Fin 4 → Nat :=
  let c1_i32_1496 : BitVec 32 := 1#32
  let v2409 : Index := Scalar.indexCast c1_i32_1496
  let c0_i32_1497 : BitVec 32 := 0#32
  let v2410 : Index := Scalar.indexCast c0_i32_1497
  let c0_i32_602 : BitVec 32 := 0#32
  let c1_i32_604 : BitVec 32 := 1#32
  let arg15 : BitVec 32 := Scf.iv c0_i32_602 c1_i32_604 k0_t5
  let v2411 : Index := Scalar.indexCast arg15
  let c560_1498 : Index := 560#32
  ![1, 0, v2411.toNat, 560]
def k0_off2099 (k0_t5 : Fin k0_t5_loop.trips) : Fin 4 → Nat :=
  let c3_i32_1499 : BitVec 32 := 3#32
  let v2415 : Index := Scalar.indexCast c3_i32_1499
  let c0_i32_1500 : BitVec 32 := 0#32
  let v2416 : Index := Scalar.indexCast c0_i32_1500
  let c0_i32_602 : BitVec 32 := 0#32
  let c1_i32_604 : BitVec 32 := 1#32
  let arg15 : BitVec 32 := Scf.iv c0_i32_602 c1_i32_604 k0_t5
  let v2417 : Index := Scalar.indexCast arg15
  let c576_1501 : Index := 576#32
  ![3, 0, v2417.toNat, 576]
def k0_off2100 (k0_t5 : Fin k0_t5_loop.trips) : Fin 4 → Nat :=
  let c1_i32_1502 : BitVec 32 := 1#32
  let v2421 : Index := Scalar.indexCast c1_i32_1502
  let c0_i32_1503 : BitVec 32 := 0#32
  let v2422 : Index := Scalar.indexCast c0_i32_1503
  let c0_i32_602 : BitVec 32 := 0#32
  let c1_i32_604 : BitVec 32 := 1#32
  let arg15 : BitVec 32 := Scf.iv c0_i32_602 c1_i32_604 k0_t5
  let v2423 : Index := Scalar.indexCast arg15
  let c576_1504 : Index := 576#32
  ![1, 0, v2423.toNat, 576]
def k0_off2101 (k0_t5 : Fin k0_t5_loop.trips) : Fin 4 → Nat :=
  let c3_i32_1505 : BitVec 32 := 3#32
  let v2427 : Index := Scalar.indexCast c3_i32_1505
  let c0_i32_1506 : BitVec 32 := 0#32
  let v2428 : Index := Scalar.indexCast c0_i32_1506
  let c0_i32_602 : BitVec 32 := 0#32
  let c1_i32_604 : BitVec 32 := 1#32
  let arg15 : BitVec 32 := Scf.iv c0_i32_602 c1_i32_604 k0_t5
  let v2429 : Index := Scalar.indexCast arg15
  let c592_1507 : Index := 592#32
  ![3, 0, v2429.toNat, 592]
def k0_off2102 (k0_t5 : Fin k0_t5_loop.trips) : Fin 4 → Nat :=
  let c1_i32_1508 : BitVec 32 := 1#32
  let v2433 : Index := Scalar.indexCast c1_i32_1508
  let c0_i32_1509 : BitVec 32 := 0#32
  let v2434 : Index := Scalar.indexCast c0_i32_1509
  let c0_i32_602 : BitVec 32 := 0#32
  let c1_i32_604 : BitVec 32 := 1#32
  let arg15 : BitVec 32 := Scf.iv c0_i32_602 c1_i32_604 k0_t5
  let v2435 : Index := Scalar.indexCast arg15
  let c592_1510 : Index := 592#32
  ![1, 0, v2435.toNat, 592]
def k0_off2103 (k0_t5 : Fin k0_t5_loop.trips) : Fin 4 → Nat :=
  let c3_i32_1511 : BitVec 32 := 3#32
  let v2439 : Index := Scalar.indexCast c3_i32_1511
  let c0_i32_1512 : BitVec 32 := 0#32
  let v2440 : Index := Scalar.indexCast c0_i32_1512
  let c0_i32_602 : BitVec 32 := 0#32
  let c1_i32_604 : BitVec 32 := 1#32
  let arg15 : BitVec 32 := Scf.iv c0_i32_602 c1_i32_604 k0_t5
  let v2441 : Index := Scalar.indexCast arg15
  let c608_1513 : Index := 608#32
  ![3, 0, v2441.toNat, 608]
def k0_off2104 (k0_t5 : Fin k0_t5_loop.trips) : Fin 4 → Nat :=
  let c1_i32_1514 : BitVec 32 := 1#32
  let v2445 : Index := Scalar.indexCast c1_i32_1514
  let c0_i32_1515 : BitVec 32 := 0#32
  let v2446 : Index := Scalar.indexCast c0_i32_1515
  let c0_i32_602 : BitVec 32 := 0#32
  let c1_i32_604 : BitVec 32 := 1#32
  let arg15 : BitVec 32 := Scf.iv c0_i32_602 c1_i32_604 k0_t5
  let v2447 : Index := Scalar.indexCast arg15
  let c608_1516 : Index := 608#32
  ![1, 0, v2447.toNat, 608]
def k0_off2105 (k0_t5 : Fin k0_t5_loop.trips) : Fin 4 → Nat :=
  let c3_i32_1517 : BitVec 32 := 3#32
  let v2451 : Index := Scalar.indexCast c3_i32_1517
  let c0_i32_1518 : BitVec 32 := 0#32
  let v2452 : Index := Scalar.indexCast c0_i32_1518
  let c0_i32_602 : BitVec 32 := 0#32
  let c1_i32_604 : BitVec 32 := 1#32
  let arg15 : BitVec 32 := Scf.iv c0_i32_602 c1_i32_604 k0_t5
  let v2453 : Index := Scalar.indexCast arg15
  let c624_1519 : Index := 624#32
  ![3, 0, v2453.toNat, 624]
def k0_off2106 (k0_t5 : Fin k0_t5_loop.trips) : Fin 4 → Nat :=
  let c1_i32_1520 : BitVec 32 := 1#32
  let v2457 : Index := Scalar.indexCast c1_i32_1520
  let c0_i32_1521 : BitVec 32 := 0#32
  let v2458 : Index := Scalar.indexCast c0_i32_1521
  let c0_i32_602 : BitVec 32 := 0#32
  let c1_i32_604 : BitVec 32 := 1#32
  let arg15 : BitVec 32 := Scf.iv c0_i32_602 c1_i32_604 k0_t5
  let v2459 : Index := Scalar.indexCast arg15
  let c624_1522 : Index := 624#32
  ![1, 0, v2459.toNat, 624]
def k0_off2107 (k0_t5 : Fin k0_t5_loop.trips) : Fin 4 → Nat :=
  let c3_i32_1523 : BitVec 32 := 3#32
  let v2463 : Index := Scalar.indexCast c3_i32_1523
  let c0_i32_1524 : BitVec 32 := 0#32
  let v2464 : Index := Scalar.indexCast c0_i32_1524
  let c0_i32_602 : BitVec 32 := 0#32
  let c1_i32_604 : BitVec 32 := 1#32
  let arg15 : BitVec 32 := Scf.iv c0_i32_602 c1_i32_604 k0_t5
  let v2465 : Index := Scalar.indexCast arg15
  let c640_1525 : Index := 640#32
  ![3, 0, v2465.toNat, 640]
def k0_off2108 (k0_t5 : Fin k0_t5_loop.trips) : Fin 4 → Nat :=
  let c1_i32_1526 : BitVec 32 := 1#32
  let v2469 : Index := Scalar.indexCast c1_i32_1526
  let c0_i32_1527 : BitVec 32 := 0#32
  let v2470 : Index := Scalar.indexCast c0_i32_1527
  let c0_i32_602 : BitVec 32 := 0#32
  let c1_i32_604 : BitVec 32 := 1#32
  let arg15 : BitVec 32 := Scf.iv c0_i32_602 c1_i32_604 k0_t5
  let v2471 : Index := Scalar.indexCast arg15
  let c640_1528 : Index := 640#32
  ![1, 0, v2471.toNat, 640]
def k0_off2109 (k0_t5 : Fin k0_t5_loop.trips) : Fin 4 → Nat :=
  let c3_i32_1529 : BitVec 32 := 3#32
  let v2475 : Index := Scalar.indexCast c3_i32_1529
  let c0_i32_1530 : BitVec 32 := 0#32
  let v2476 : Index := Scalar.indexCast c0_i32_1530
  let c0_i32_602 : BitVec 32 := 0#32
  let c1_i32_604 : BitVec 32 := 1#32
  let arg15 : BitVec 32 := Scf.iv c0_i32_602 c1_i32_604 k0_t5
  let v2477 : Index := Scalar.indexCast arg15
  let c656_1531 : Index := 656#32
  ![3, 0, v2477.toNat, 656]
def k0_off2110 (k0_t5 : Fin k0_t5_loop.trips) : Fin 4 → Nat :=
  let c1_i32_1532 : BitVec 32 := 1#32
  let v2481 : Index := Scalar.indexCast c1_i32_1532
  let c0_i32_1533 : BitVec 32 := 0#32
  let v2482 : Index := Scalar.indexCast c0_i32_1533
  let c0_i32_602 : BitVec 32 := 0#32
  let c1_i32_604 : BitVec 32 := 1#32
  let arg15 : BitVec 32 := Scf.iv c0_i32_602 c1_i32_604 k0_t5
  let v2483 : Index := Scalar.indexCast arg15
  let c656_1534 : Index := 656#32
  ![1, 0, v2483.toNat, 656]
def k0_off2111 (k0_t5 : Fin k0_t5_loop.trips) : Fin 4 → Nat :=
  let c3_i32_1535 : BitVec 32 := 3#32
  let v2487 : Index := Scalar.indexCast c3_i32_1535
  let c0_i32_1536 : BitVec 32 := 0#32
  let v2488 : Index := Scalar.indexCast c0_i32_1536
  let c0_i32_602 : BitVec 32 := 0#32
  let c1_i32_604 : BitVec 32 := 1#32
  let arg15 : BitVec 32 := Scf.iv c0_i32_602 c1_i32_604 k0_t5
  let v2489 : Index := Scalar.indexCast arg15
  let c672_1537 : Index := 672#32
  ![3, 0, v2489.toNat, 672]
def k0_off2112 (k0_t5 : Fin k0_t5_loop.trips) : Fin 4 → Nat :=
  let c1_i32_1538 : BitVec 32 := 1#32
  let v2493 : Index := Scalar.indexCast c1_i32_1538
  let c0_i32_1539 : BitVec 32 := 0#32
  let v2494 : Index := Scalar.indexCast c0_i32_1539
  let c0_i32_602 : BitVec 32 := 0#32
  let c1_i32_604 : BitVec 32 := 1#32
  let arg15 : BitVec 32 := Scf.iv c0_i32_602 c1_i32_604 k0_t5
  let v2495 : Index := Scalar.indexCast arg15
  let c672_1540 : Index := 672#32
  ![1, 0, v2495.toNat, 672]
def k0_off2113 (k0_t5 : Fin k0_t5_loop.trips) : Fin 4 → Nat :=
  let c3_i32_1541 : BitVec 32 := 3#32
  let v2499 : Index := Scalar.indexCast c3_i32_1541
  let c0_i32_1542 : BitVec 32 := 0#32
  let v2500 : Index := Scalar.indexCast c0_i32_1542
  let c0_i32_602 : BitVec 32 := 0#32
  let c1_i32_604 : BitVec 32 := 1#32
  let arg15 : BitVec 32 := Scf.iv c0_i32_602 c1_i32_604 k0_t5
  let v2501 : Index := Scalar.indexCast arg15
  let c688_1543 : Index := 688#32
  ![3, 0, v2501.toNat, 688]
def k0_off2114 (k0_t5 : Fin k0_t5_loop.trips) : Fin 4 → Nat :=
  let c1_i32_1544 : BitVec 32 := 1#32
  let v2505 : Index := Scalar.indexCast c1_i32_1544
  let c0_i32_1545 : BitVec 32 := 0#32
  let v2506 : Index := Scalar.indexCast c0_i32_1545
  let c0_i32_602 : BitVec 32 := 0#32
  let c1_i32_604 : BitVec 32 := 1#32
  let arg15 : BitVec 32 := Scf.iv c0_i32_602 c1_i32_604 k0_t5
  let v2507 : Index := Scalar.indexCast arg15
  let c688_1546 : Index := 688#32
  ![1, 0, v2507.toNat, 688]
def k0_off2115 (k0_t5 : Fin k0_t5_loop.trips) : Fin 4 → Nat :=
  let c3_i32_1547 : BitVec 32 := 3#32
  let v2511 : Index := Scalar.indexCast c3_i32_1547
  let c0_i32_1548 : BitVec 32 := 0#32
  let v2512 : Index := Scalar.indexCast c0_i32_1548
  let c0_i32_602 : BitVec 32 := 0#32
  let c1_i32_604 : BitVec 32 := 1#32
  let arg15 : BitVec 32 := Scf.iv c0_i32_602 c1_i32_604 k0_t5
  let v2513 : Index := Scalar.indexCast arg15
  let c704_1549 : Index := 704#32
  ![3, 0, v2513.toNat, 704]
def k0_off2116 (k0_t5 : Fin k0_t5_loop.trips) : Fin 4 → Nat :=
  let c1_i32_1550 : BitVec 32 := 1#32
  let v2517 : Index := Scalar.indexCast c1_i32_1550
  let c0_i32_1551 : BitVec 32 := 0#32
  let v2518 : Index := Scalar.indexCast c0_i32_1551
  let c0_i32_602 : BitVec 32 := 0#32
  let c1_i32_604 : BitVec 32 := 1#32
  let arg15 : BitVec 32 := Scf.iv c0_i32_602 c1_i32_604 k0_t5
  let v2519 : Index := Scalar.indexCast arg15
  let c704_1552 : Index := 704#32
  ![1, 0, v2519.toNat, 704]
def k0_off2117 (k0_t5 : Fin k0_t5_loop.trips) : Fin 4 → Nat :=
  let c3_i32_1553 : BitVec 32 := 3#32
  let v2523 : Index := Scalar.indexCast c3_i32_1553
  let c0_i32_1554 : BitVec 32 := 0#32
  let v2524 : Index := Scalar.indexCast c0_i32_1554
  let c0_i32_602 : BitVec 32 := 0#32
  let c1_i32_604 : BitVec 32 := 1#32
  let arg15 : BitVec 32 := Scf.iv c0_i32_602 c1_i32_604 k0_t5
  let v2525 : Index := Scalar.indexCast arg15
  let c720_1555 : Index := 720#32
  ![3, 0, v2525.toNat, 720]
def k0_off2118 (k0_t5 : Fin k0_t5_loop.trips) : Fin 4 → Nat :=
  let c1_i32_1556 : BitVec 32 := 1#32
  let v2529 : Index := Scalar.indexCast c1_i32_1556
  let c0_i32_1557 : BitVec 32 := 0#32
  let v2530 : Index := Scalar.indexCast c0_i32_1557
  let c0_i32_602 : BitVec 32 := 0#32
  let c1_i32_604 : BitVec 32 := 1#32
  let arg15 : BitVec 32 := Scf.iv c0_i32_602 c1_i32_604 k0_t5
  let v2531 : Index := Scalar.indexCast arg15
  let c720_1558 : Index := 720#32
  ![1, 0, v2531.toNat, 720]
def k0_off2119 (k0_t5 : Fin k0_t5_loop.trips) : Fin 4 → Nat :=
  let c3_i32_1559 : BitVec 32 := 3#32
  let v2535 : Index := Scalar.indexCast c3_i32_1559
  let c0_i32_1560 : BitVec 32 := 0#32
  let v2536 : Index := Scalar.indexCast c0_i32_1560
  let c0_i32_602 : BitVec 32 := 0#32
  let c1_i32_604 : BitVec 32 := 1#32
  let arg15 : BitVec 32 := Scf.iv c0_i32_602 c1_i32_604 k0_t5
  let v2537 : Index := Scalar.indexCast arg15
  let c736_1561 : Index := 736#32
  ![3, 0, v2537.toNat, 736]
def k0_off2120 (k0_t5 : Fin k0_t5_loop.trips) : Fin 4 → Nat :=
  let c1_i32_1562 : BitVec 32 := 1#32
  let v2541 : Index := Scalar.indexCast c1_i32_1562
  let c0_i32_1563 : BitVec 32 := 0#32
  let v2542 : Index := Scalar.indexCast c0_i32_1563
  let c0_i32_602 : BitVec 32 := 0#32
  let c1_i32_604 : BitVec 32 := 1#32
  let arg15 : BitVec 32 := Scf.iv c0_i32_602 c1_i32_604 k0_t5
  let v2543 : Index := Scalar.indexCast arg15
  let c736_1564 : Index := 736#32
  ![1, 0, v2543.toNat, 736]
def k0_off2121 (k0_t5 : Fin k0_t5_loop.trips) : Fin 4 → Nat :=
  let c3_i32_1565 : BitVec 32 := 3#32
  let v2547 : Index := Scalar.indexCast c3_i32_1565
  let c0_i32_1566 : BitVec 32 := 0#32
  let v2548 : Index := Scalar.indexCast c0_i32_1566
  let c0_i32_602 : BitVec 32 := 0#32
  let c1_i32_604 : BitVec 32 := 1#32
  let arg15 : BitVec 32 := Scf.iv c0_i32_602 c1_i32_604 k0_t5
  let v2549 : Index := Scalar.indexCast arg15
  let c752_1567 : Index := 752#32
  ![3, 0, v2549.toNat, 752]
def k0_off2122 (k0_t5 : Fin k0_t5_loop.trips) : Fin 4 → Nat :=
  let c1_i32_1568 : BitVec 32 := 1#32
  let v2553 : Index := Scalar.indexCast c1_i32_1568
  let c0_i32_1569 : BitVec 32 := 0#32
  let v2554 : Index := Scalar.indexCast c0_i32_1569
  let c0_i32_602 : BitVec 32 := 0#32
  let c1_i32_604 : BitVec 32 := 1#32
  let arg15 : BitVec 32 := Scf.iv c0_i32_602 c1_i32_604 k0_t5
  let v2555 : Index := Scalar.indexCast arg15
  let c752_1570 : Index := 752#32
  ![1, 0, v2555.toNat, 752]
def k0_off2123 (k0_t5 : Fin k0_t5_loop.trips) : Fin 4 → Nat :=
  let c3_i32_1571 : BitVec 32 := 3#32
  let v2559 : Index := Scalar.indexCast c3_i32_1571
  let c0_i32_1572 : BitVec 32 := 0#32
  let v2560 : Index := Scalar.indexCast c0_i32_1572
  let c0_i32_602 : BitVec 32 := 0#32
  let c1_i32_604 : BitVec 32 := 1#32
  let arg15 : BitVec 32 := Scf.iv c0_i32_602 c1_i32_604 k0_t5
  let v2561 : Index := Scalar.indexCast arg15
  let c768_1573 : Index := 768#32
  ![3, 0, v2561.toNat, 768]
def k0_off2124 (k0_t5 : Fin k0_t5_loop.trips) : Fin 4 → Nat :=
  let c1_i32_1574 : BitVec 32 := 1#32
  let v2565 : Index := Scalar.indexCast c1_i32_1574
  let c0_i32_1575 : BitVec 32 := 0#32
  let v2566 : Index := Scalar.indexCast c0_i32_1575
  let c0_i32_602 : BitVec 32 := 0#32
  let c1_i32_604 : BitVec 32 := 1#32
  let arg15 : BitVec 32 := Scf.iv c0_i32_602 c1_i32_604 k0_t5
  let v2567 : Index := Scalar.indexCast arg15
  let c768_1576 : Index := 768#32
  ![1, 0, v2567.toNat, 768]
def k0_off2125 (k0_t5 : Fin k0_t5_loop.trips) : Fin 4 → Nat :=
  let c3_i32_1577 : BitVec 32 := 3#32
  let v2571 : Index := Scalar.indexCast c3_i32_1577
  let c0_i32_1578 : BitVec 32 := 0#32
  let v2572 : Index := Scalar.indexCast c0_i32_1578
  let c0_i32_602 : BitVec 32 := 0#32
  let c1_i32_604 : BitVec 32 := 1#32
  let arg15 : BitVec 32 := Scf.iv c0_i32_602 c1_i32_604 k0_t5
  let v2573 : Index := Scalar.indexCast arg15
  let c784_1579 : Index := 784#32
  ![3, 0, v2573.toNat, 784]
def k0_off2126 (k0_t5 : Fin k0_t5_loop.trips) : Fin 4 → Nat :=
  let c1_i32_1580 : BitVec 32 := 1#32
  let v2577 : Index := Scalar.indexCast c1_i32_1580
  let c0_i32_1581 : BitVec 32 := 0#32
  let v2578 : Index := Scalar.indexCast c0_i32_1581
  let c0_i32_602 : BitVec 32 := 0#32
  let c1_i32_604 : BitVec 32 := 1#32
  let arg15 : BitVec 32 := Scf.iv c0_i32_602 c1_i32_604 k0_t5
  let v2579 : Index := Scalar.indexCast arg15
  let c784_1582 : Index := 784#32
  ![1, 0, v2579.toNat, 784]
def k0_off2127 (k0_t5 : Fin k0_t5_loop.trips) : Fin 4 → Nat :=
  let c3_i32_1583 : BitVec 32 := 3#32
  let v2583 : Index := Scalar.indexCast c3_i32_1583
  let c0_i32_1584 : BitVec 32 := 0#32
  let v2584 : Index := Scalar.indexCast c0_i32_1584
  let c0_i32_602 : BitVec 32 := 0#32
  let c1_i32_604 : BitVec 32 := 1#32
  let arg15 : BitVec 32 := Scf.iv c0_i32_602 c1_i32_604 k0_t5
  let v2585 : Index := Scalar.indexCast arg15
  let c800_1585 : Index := 800#32
  ![3, 0, v2585.toNat, 800]
def k0_off2128 (k0_t5 : Fin k0_t5_loop.trips) : Fin 4 → Nat :=
  let c1_i32_1586 : BitVec 32 := 1#32
  let v2589 : Index := Scalar.indexCast c1_i32_1586
  let c0_i32_1587 : BitVec 32 := 0#32
  let v2590 : Index := Scalar.indexCast c0_i32_1587
  let c0_i32_602 : BitVec 32 := 0#32
  let c1_i32_604 : BitVec 32 := 1#32
  let arg15 : BitVec 32 := Scf.iv c0_i32_602 c1_i32_604 k0_t5
  let v2591 : Index := Scalar.indexCast arg15
  let c800_1588 : Index := 800#32
  ![1, 0, v2591.toNat, 800]
def k0_off2129 (k0_t5 : Fin k0_t5_loop.trips) : Fin 4 → Nat :=
  let c3_i32_1589 : BitVec 32 := 3#32
  let v2595 : Index := Scalar.indexCast c3_i32_1589
  let c0_i32_1590 : BitVec 32 := 0#32
  let v2596 : Index := Scalar.indexCast c0_i32_1590
  let c0_i32_602 : BitVec 32 := 0#32
  let c1_i32_604 : BitVec 32 := 1#32
  let arg15 : BitVec 32 := Scf.iv c0_i32_602 c1_i32_604 k0_t5
  let v2597 : Index := Scalar.indexCast arg15
  let c816_1591 : Index := 816#32
  ![3, 0, v2597.toNat, 816]
def k0_off2130 (k0_t5 : Fin k0_t5_loop.trips) : Fin 4 → Nat :=
  let c1_i32_1592 : BitVec 32 := 1#32
  let v2601 : Index := Scalar.indexCast c1_i32_1592
  let c0_i32_1593 : BitVec 32 := 0#32
  let v2602 : Index := Scalar.indexCast c0_i32_1593
  let c0_i32_602 : BitVec 32 := 0#32
  let c1_i32_604 : BitVec 32 := 1#32
  let arg15 : BitVec 32 := Scf.iv c0_i32_602 c1_i32_604 k0_t5
  let v2603 : Index := Scalar.indexCast arg15
  let c816_1594 : Index := 816#32
  ![1, 0, v2603.toNat, 816]
def k0_off2131 (k0_t5 : Fin k0_t5_loop.trips) : Fin 4 → Nat :=
  let c3_i32_1595 : BitVec 32 := 3#32
  let v2607 : Index := Scalar.indexCast c3_i32_1595
  let c0_i32_1596 : BitVec 32 := 0#32
  let v2608 : Index := Scalar.indexCast c0_i32_1596
  let c0_i32_602 : BitVec 32 := 0#32
  let c1_i32_604 : BitVec 32 := 1#32
  let arg15 : BitVec 32 := Scf.iv c0_i32_602 c1_i32_604 k0_t5
  let v2609 : Index := Scalar.indexCast arg15
  let c832_1597 : Index := 832#32
  ![3, 0, v2609.toNat, 832]
def k0_off2132 (k0_t5 : Fin k0_t5_loop.trips) : Fin 4 → Nat :=
  let c1_i32_1598 : BitVec 32 := 1#32
  let v2613 : Index := Scalar.indexCast c1_i32_1598
  let c0_i32_1599 : BitVec 32 := 0#32
  let v2614 : Index := Scalar.indexCast c0_i32_1599
  let c0_i32_602 : BitVec 32 := 0#32
  let c1_i32_604 : BitVec 32 := 1#32
  let arg15 : BitVec 32 := Scf.iv c0_i32_602 c1_i32_604 k0_t5
  let v2615 : Index := Scalar.indexCast arg15
  let c832_1600 : Index := 832#32
  ![1, 0, v2615.toNat, 832]
def k0_off2133 (k0_t5 : Fin k0_t5_loop.trips) : Fin 4 → Nat :=
  let c3_i32_1601 : BitVec 32 := 3#32
  let v2619 : Index := Scalar.indexCast c3_i32_1601
  let c0_i32_1602 : BitVec 32 := 0#32
  let v2620 : Index := Scalar.indexCast c0_i32_1602
  let c0_i32_602 : BitVec 32 := 0#32
  let c1_i32_604 : BitVec 32 := 1#32
  let arg15 : BitVec 32 := Scf.iv c0_i32_602 c1_i32_604 k0_t5
  let v2621 : Index := Scalar.indexCast arg15
  let c848_1603 : Index := 848#32
  ![3, 0, v2621.toNat, 848]
def k0_off2134 (k0_t5 : Fin k0_t5_loop.trips) : Fin 4 → Nat :=
  let c1_i32_1604 : BitVec 32 := 1#32
  let v2625 : Index := Scalar.indexCast c1_i32_1604
  let c0_i32_1605 : BitVec 32 := 0#32
  let v2626 : Index := Scalar.indexCast c0_i32_1605
  let c0_i32_602 : BitVec 32 := 0#32
  let c1_i32_604 : BitVec 32 := 1#32
  let arg15 : BitVec 32 := Scf.iv c0_i32_602 c1_i32_604 k0_t5
  let v2627 : Index := Scalar.indexCast arg15
  let c848_1606 : Index := 848#32
  ![1, 0, v2627.toNat, 848]
def k0_off2135 (k0_t5 : Fin k0_t5_loop.trips) : Fin 4 → Nat :=
  let c3_i32_1607 : BitVec 32 := 3#32
  let v2631 : Index := Scalar.indexCast c3_i32_1607
  let c0_i32_1608 : BitVec 32 := 0#32
  let v2632 : Index := Scalar.indexCast c0_i32_1608
  let c0_i32_602 : BitVec 32 := 0#32
  let c1_i32_604 : BitVec 32 := 1#32
  let arg15 : BitVec 32 := Scf.iv c0_i32_602 c1_i32_604 k0_t5
  let v2633 : Index := Scalar.indexCast arg15
  let c864_1609 : Index := 864#32
  ![3, 0, v2633.toNat, 864]
def k0_off2136 (k0_t5 : Fin k0_t5_loop.trips) : Fin 4 → Nat :=
  let c1_i32_1610 : BitVec 32 := 1#32
  let v2637 : Index := Scalar.indexCast c1_i32_1610
  let c0_i32_1611 : BitVec 32 := 0#32
  let v2638 : Index := Scalar.indexCast c0_i32_1611
  let c0_i32_602 : BitVec 32 := 0#32
  let c1_i32_604 : BitVec 32 := 1#32
  let arg15 : BitVec 32 := Scf.iv c0_i32_602 c1_i32_604 k0_t5
  let v2639 : Index := Scalar.indexCast arg15
  let c864_1612 : Index := 864#32
  ![1, 0, v2639.toNat, 864]
def k0_off2137 (k0_t5 : Fin k0_t5_loop.trips) : Fin 4 → Nat :=
  let c3_i32_1613 : BitVec 32 := 3#32
  let v2643 : Index := Scalar.indexCast c3_i32_1613
  let c0_i32_1614 : BitVec 32 := 0#32
  let v2644 : Index := Scalar.indexCast c0_i32_1614
  let c0_i32_602 : BitVec 32 := 0#32
  let c1_i32_604 : BitVec 32 := 1#32
  let arg15 : BitVec 32 := Scf.iv c0_i32_602 c1_i32_604 k0_t5
  let v2645 : Index := Scalar.indexCast arg15
  let c880_1615 : Index := 880#32
  ![3, 0, v2645.toNat, 880]
def k0_off2138 (k0_t5 : Fin k0_t5_loop.trips) : Fin 4 → Nat :=
  let c1_i32_1616 : BitVec 32 := 1#32
  let v2649 : Index := Scalar.indexCast c1_i32_1616
  let c0_i32_1617 : BitVec 32 := 0#32
  let v2650 : Index := Scalar.indexCast c0_i32_1617
  let c0_i32_602 : BitVec 32 := 0#32
  let c1_i32_604 : BitVec 32 := 1#32
  let arg15 : BitVec 32 := Scf.iv c0_i32_602 c1_i32_604 k0_t5
  let v2651 : Index := Scalar.indexCast arg15
  let c880_1618 : Index := 880#32
  ![1, 0, v2651.toNat, 880]
def k0_off2139 (k0_t5 : Fin k0_t5_loop.trips) : Fin 4 → Nat :=
  let c3_i32_1619 : BitVec 32 := 3#32
  let v2655 : Index := Scalar.indexCast c3_i32_1619
  let c0_i32_1620 : BitVec 32 := 0#32
  let v2656 : Index := Scalar.indexCast c0_i32_1620
  let c0_i32_602 : BitVec 32 := 0#32
  let c1_i32_604 : BitVec 32 := 1#32
  let arg15 : BitVec 32 := Scf.iv c0_i32_602 c1_i32_604 k0_t5
  let v2657 : Index := Scalar.indexCast arg15
  let c896_1621 : Index := 896#32
  ![3, 0, v2657.toNat, 896]
def k0_off2140 (k0_t5 : Fin k0_t5_loop.trips) : Fin 4 → Nat :=
  let c1_i32_1622 : BitVec 32 := 1#32
  let v2661 : Index := Scalar.indexCast c1_i32_1622
  let c0_i32_1623 : BitVec 32 := 0#32
  let v2662 : Index := Scalar.indexCast c0_i32_1623
  let c0_i32_602 : BitVec 32 := 0#32
  let c1_i32_604 : BitVec 32 := 1#32
  let arg15 : BitVec 32 := Scf.iv c0_i32_602 c1_i32_604 k0_t5
  let v2663 : Index := Scalar.indexCast arg15
  let c896_1624 : Index := 896#32
  ![1, 0, v2663.toNat, 896]
def k0_off2141 (k0_t5 : Fin k0_t5_loop.trips) : Fin 4 → Nat :=
  let c3_i32_1625 : BitVec 32 := 3#32
  let v2667 : Index := Scalar.indexCast c3_i32_1625
  let c0_i32_1626 : BitVec 32 := 0#32
  let v2668 : Index := Scalar.indexCast c0_i32_1626
  let c0_i32_602 : BitVec 32 := 0#32
  let c1_i32_604 : BitVec 32 := 1#32
  let arg15 : BitVec 32 := Scf.iv c0_i32_602 c1_i32_604 k0_t5
  let v2669 : Index := Scalar.indexCast arg15
  let c912_1627 : Index := 912#32
  ![3, 0, v2669.toNat, 912]
def k0_off2142 (k0_t5 : Fin k0_t5_loop.trips) : Fin 4 → Nat :=
  let c1_i32_1628 : BitVec 32 := 1#32
  let v2673 : Index := Scalar.indexCast c1_i32_1628
  let c0_i32_1629 : BitVec 32 := 0#32
  let v2674 : Index := Scalar.indexCast c0_i32_1629
  let c0_i32_602 : BitVec 32 := 0#32
  let c1_i32_604 : BitVec 32 := 1#32
  let arg15 : BitVec 32 := Scf.iv c0_i32_602 c1_i32_604 k0_t5
  let v2675 : Index := Scalar.indexCast arg15
  let c912_1630 : Index := 912#32
  ![1, 0, v2675.toNat, 912]
def k0_off2143 (k0_t5 : Fin k0_t5_loop.trips) : Fin 4 → Nat :=
  let c3_i32_1631 : BitVec 32 := 3#32
  let v2679 : Index := Scalar.indexCast c3_i32_1631
  let c0_i32_1632 : BitVec 32 := 0#32
  let v2680 : Index := Scalar.indexCast c0_i32_1632
  let c0_i32_602 : BitVec 32 := 0#32
  let c1_i32_604 : BitVec 32 := 1#32
  let arg15 : BitVec 32 := Scf.iv c0_i32_602 c1_i32_604 k0_t5
  let v2681 : Index := Scalar.indexCast arg15
  let c928_1633 : Index := 928#32
  ![3, 0, v2681.toNat, 928]
def k0_off2144 (k0_t5 : Fin k0_t5_loop.trips) : Fin 4 → Nat :=
  let c1_i32_1634 : BitVec 32 := 1#32
  let v2685 : Index := Scalar.indexCast c1_i32_1634
  let c0_i32_1635 : BitVec 32 := 0#32
  let v2686 : Index := Scalar.indexCast c0_i32_1635
  let c0_i32_602 : BitVec 32 := 0#32
  let c1_i32_604 : BitVec 32 := 1#32
  let arg15 : BitVec 32 := Scf.iv c0_i32_602 c1_i32_604 k0_t5
  let v2687 : Index := Scalar.indexCast arg15
  let c928_1636 : Index := 928#32
  ![1, 0, v2687.toNat, 928]
def k0_off2145 (k0_t5 : Fin k0_t5_loop.trips) : Fin 4 → Nat :=
  let c3_i32_1637 : BitVec 32 := 3#32
  let v2691 : Index := Scalar.indexCast c3_i32_1637
  let c0_i32_1638 : BitVec 32 := 0#32
  let v2692 : Index := Scalar.indexCast c0_i32_1638
  let c0_i32_602 : BitVec 32 := 0#32
  let c1_i32_604 : BitVec 32 := 1#32
  let arg15 : BitVec 32 := Scf.iv c0_i32_602 c1_i32_604 k0_t5
  let v2693 : Index := Scalar.indexCast arg15
  let c944_1639 : Index := 944#32
  ![3, 0, v2693.toNat, 944]
def k0_off2146 (k0_t5 : Fin k0_t5_loop.trips) : Fin 4 → Nat :=
  let c1_i32_1640 : BitVec 32 := 1#32
  let v2697 : Index := Scalar.indexCast c1_i32_1640
  let c0_i32_1641 : BitVec 32 := 0#32
  let v2698 : Index := Scalar.indexCast c0_i32_1641
  let c0_i32_602 : BitVec 32 := 0#32
  let c1_i32_604 : BitVec 32 := 1#32
  let arg15 : BitVec 32 := Scf.iv c0_i32_602 c1_i32_604 k0_t5
  let v2699 : Index := Scalar.indexCast arg15
  let c944_1642 : Index := 944#32
  ![1, 0, v2699.toNat, 944]
def k0_off2147 (k0_t5 : Fin k0_t5_loop.trips) : Fin 4 → Nat :=
  let c3_i32_1643 : BitVec 32 := 3#32
  let v2703 : Index := Scalar.indexCast c3_i32_1643
  let c0_i32_1644 : BitVec 32 := 0#32
  let v2704 : Index := Scalar.indexCast c0_i32_1644
  let c0_i32_602 : BitVec 32 := 0#32
  let c1_i32_604 : BitVec 32 := 1#32
  let arg15 : BitVec 32 := Scf.iv c0_i32_602 c1_i32_604 k0_t5
  let v2705 : Index := Scalar.indexCast arg15
  let c960_1645 : Index := 960#32
  ![3, 0, v2705.toNat, 960]
def k0_off2148 (k0_t5 : Fin k0_t5_loop.trips) : Fin 4 → Nat :=
  let c1_i32_1646 : BitVec 32 := 1#32
  let v2709 : Index := Scalar.indexCast c1_i32_1646
  let c0_i32_1647 : BitVec 32 := 0#32
  let v2710 : Index := Scalar.indexCast c0_i32_1647
  let c0_i32_602 : BitVec 32 := 0#32
  let c1_i32_604 : BitVec 32 := 1#32
  let arg15 : BitVec 32 := Scf.iv c0_i32_602 c1_i32_604 k0_t5
  let v2711 : Index := Scalar.indexCast arg15
  let c960_1648 : Index := 960#32
  ![1, 0, v2711.toNat, 960]
def k0_off2149 (k0_t5 : Fin k0_t5_loop.trips) : Fin 4 → Nat :=
  let c3_i32_1649 : BitVec 32 := 3#32
  let v2715 : Index := Scalar.indexCast c3_i32_1649
  let c0_i32_1650 : BitVec 32 := 0#32
  let v2716 : Index := Scalar.indexCast c0_i32_1650
  let c0_i32_602 : BitVec 32 := 0#32
  let c1_i32_604 : BitVec 32 := 1#32
  let arg15 : BitVec 32 := Scf.iv c0_i32_602 c1_i32_604 k0_t5
  let v2717 : Index := Scalar.indexCast arg15
  let c976_1651 : Index := 976#32
  ![3, 0, v2717.toNat, 976]
def k0_off2150 (k0_t5 : Fin k0_t5_loop.trips) : Fin 4 → Nat :=
  let c1_i32_1652 : BitVec 32 := 1#32
  let v2721 : Index := Scalar.indexCast c1_i32_1652
  let c0_i32_1653 : BitVec 32 := 0#32
  let v2722 : Index := Scalar.indexCast c0_i32_1653
  let c0_i32_602 : BitVec 32 := 0#32
  let c1_i32_604 : BitVec 32 := 1#32
  let arg15 : BitVec 32 := Scf.iv c0_i32_602 c1_i32_604 k0_t5
  let v2723 : Index := Scalar.indexCast arg15
  let c976_1654 : Index := 976#32
  ![1, 0, v2723.toNat, 976]
def k0_off2151 (k0_t5 : Fin k0_t5_loop.trips) : Fin 4 → Nat :=
  let c3_i32_1655 : BitVec 32 := 3#32
  let v2727 : Index := Scalar.indexCast c3_i32_1655
  let c0_i32_1656 : BitVec 32 := 0#32
  let v2728 : Index := Scalar.indexCast c0_i32_1656
  let c0_i32_602 : BitVec 32 := 0#32
  let c1_i32_604 : BitVec 32 := 1#32
  let arg15 : BitVec 32 := Scf.iv c0_i32_602 c1_i32_604 k0_t5
  let v2729 : Index := Scalar.indexCast arg15
  let c992_1657 : Index := 992#32
  ![3, 0, v2729.toNat, 992]
def k0_off2152 (k0_t5 : Fin k0_t5_loop.trips) : Fin 4 → Nat :=
  let c1_i32_1658 : BitVec 32 := 1#32
  let v2733 : Index := Scalar.indexCast c1_i32_1658
  let c0_i32_1659 : BitVec 32 := 0#32
  let v2734 : Index := Scalar.indexCast c0_i32_1659
  let c0_i32_602 : BitVec 32 := 0#32
  let c1_i32_604 : BitVec 32 := 1#32
  let arg15 : BitVec 32 := Scf.iv c0_i32_602 c1_i32_604 k0_t5
  let v2735 : Index := Scalar.indexCast arg15
  let c992_1660 : Index := 992#32
  ![1, 0, v2735.toNat, 992]
def k0_off2153 (k0_t5 : Fin k0_t5_loop.trips) : Fin 4 → Nat :=
  let c3_i32_1661 : BitVec 32 := 3#32
  let v2739 : Index := Scalar.indexCast c3_i32_1661
  let c0_i32_1662 : BitVec 32 := 0#32
  let v2740 : Index := Scalar.indexCast c0_i32_1662
  let c0_i32_602 : BitVec 32 := 0#32
  let c1_i32_604 : BitVec 32 := 1#32
  let arg15 : BitVec 32 := Scf.iv c0_i32_602 c1_i32_604 k0_t5
  let v2741 : Index := Scalar.indexCast arg15
  let c1008_1663 : Index := 1008#32
  ![3, 0, v2741.toNat, 1008]
def k0_off2154 (k0_t5 : Fin k0_t5_loop.trips) : Fin 4 → Nat :=
  let c1_i32_1664 : BitVec 32 := 1#32
  let v2745 : Index := Scalar.indexCast c1_i32_1664
  let c0_i32_1665 : BitVec 32 := 0#32
  let v2746 : Index := Scalar.indexCast c0_i32_1665
  let c0_i32_602 : BitVec 32 := 0#32
  let c1_i32_604 : BitVec 32 := 1#32
  let arg15 : BitVec 32 := Scf.iv c0_i32_602 c1_i32_604 k0_t5
  let v2747 : Index := Scalar.indexCast arg15
  let c1008_1666 : Index := 1008#32
  ![1, 0, v2747.toNat, 1008]
def k0_off2155 (k0_t5 : Fin k0_t5_loop.trips) : Fin 4 → Nat :=
  let c3_i32_1667 : BitVec 32 := 3#32
  let v2751 : Index := Scalar.indexCast c3_i32_1667
  let c1_i32_1668 : BitVec 32 := 1#32
  let v2752 : Index := Scalar.indexCast c1_i32_1668
  let c0_i32_602 : BitVec 32 := 0#32
  let c1_i32_604 : BitVec 32 := 1#32
  let arg15 : BitVec 32 := Scf.iv c0_i32_602 c1_i32_604 k0_t5
  let v2753 : Index := Scalar.indexCast arg15
  let c512_1669 : Index := 512#32
  ![3, 1, v2753.toNat, 512]
def k0_off2156 (k0_t5 : Fin k0_t5_loop.trips) : Fin 4 → Nat :=
  let c1_i32_1670 : BitVec 32 := 1#32
  let v2757 : Index := Scalar.indexCast c1_i32_1670
  let c1_i32_1671 : BitVec 32 := 1#32
  let v2758 : Index := Scalar.indexCast c1_i32_1671
  let c0_i32_602 : BitVec 32 := 0#32
  let c1_i32_604 : BitVec 32 := 1#32
  let arg15 : BitVec 32 := Scf.iv c0_i32_602 c1_i32_604 k0_t5
  let v2759 : Index := Scalar.indexCast arg15
  let c512_1672 : Index := 512#32
  ![1, 1, v2759.toNat, 512]
def k0_off2157 (k0_t5 : Fin k0_t5_loop.trips) : Fin 4 → Nat :=
  let c3_i32_1673 : BitVec 32 := 3#32
  let v2763 : Index := Scalar.indexCast c3_i32_1673
  let c1_i32_1674 : BitVec 32 := 1#32
  let v2764 : Index := Scalar.indexCast c1_i32_1674
  let c0_i32_602 : BitVec 32 := 0#32
  let c1_i32_604 : BitVec 32 := 1#32
  let arg15 : BitVec 32 := Scf.iv c0_i32_602 c1_i32_604 k0_t5
  let v2765 : Index := Scalar.indexCast arg15
  let c528_1675 : Index := 528#32
  ![3, 1, v2765.toNat, 528]
def k0_off2158 (k0_t5 : Fin k0_t5_loop.trips) : Fin 4 → Nat :=
  let c1_i32_1676 : BitVec 32 := 1#32
  let v2769 : Index := Scalar.indexCast c1_i32_1676
  let c1_i32_1677 : BitVec 32 := 1#32
  let v2770 : Index := Scalar.indexCast c1_i32_1677
  let c0_i32_602 : BitVec 32 := 0#32
  let c1_i32_604 : BitVec 32 := 1#32
  let arg15 : BitVec 32 := Scf.iv c0_i32_602 c1_i32_604 k0_t5
  let v2771 : Index := Scalar.indexCast arg15
  let c528_1678 : Index := 528#32
  ![1, 1, v2771.toNat, 528]
def k0_off2159 (k0_t5 : Fin k0_t5_loop.trips) : Fin 4 → Nat :=
  let c3_i32_1679 : BitVec 32 := 3#32
  let v2775 : Index := Scalar.indexCast c3_i32_1679
  let c1_i32_1680 : BitVec 32 := 1#32
  let v2776 : Index := Scalar.indexCast c1_i32_1680
  let c0_i32_602 : BitVec 32 := 0#32
  let c1_i32_604 : BitVec 32 := 1#32
  let arg15 : BitVec 32 := Scf.iv c0_i32_602 c1_i32_604 k0_t5
  let v2777 : Index := Scalar.indexCast arg15
  let c544_1681 : Index := 544#32
  ![3, 1, v2777.toNat, 544]
def k0_off2160 (k0_t5 : Fin k0_t5_loop.trips) : Fin 4 → Nat :=
  let c1_i32_1682 : BitVec 32 := 1#32
  let v2781 : Index := Scalar.indexCast c1_i32_1682
  let c1_i32_1683 : BitVec 32 := 1#32
  let v2782 : Index := Scalar.indexCast c1_i32_1683
  let c0_i32_602 : BitVec 32 := 0#32
  let c1_i32_604 : BitVec 32 := 1#32
  let arg15 : BitVec 32 := Scf.iv c0_i32_602 c1_i32_604 k0_t5
  let v2783 : Index := Scalar.indexCast arg15
  let c544_1684 : Index := 544#32
  ![1, 1, v2783.toNat, 544]
def k0_off2161 (k0_t5 : Fin k0_t5_loop.trips) : Fin 4 → Nat :=
  let c3_i32_1685 : BitVec 32 := 3#32
  let v2787 : Index := Scalar.indexCast c3_i32_1685
  let c1_i32_1686 : BitVec 32 := 1#32
  let v2788 : Index := Scalar.indexCast c1_i32_1686
  let c0_i32_602 : BitVec 32 := 0#32
  let c1_i32_604 : BitVec 32 := 1#32
  let arg15 : BitVec 32 := Scf.iv c0_i32_602 c1_i32_604 k0_t5
  let v2789 : Index := Scalar.indexCast arg15
  let c560_1687 : Index := 560#32
  ![3, 1, v2789.toNat, 560]
def k0_off2162 (k0_t5 : Fin k0_t5_loop.trips) : Fin 4 → Nat :=
  let c1_i32_1688 : BitVec 32 := 1#32
  let v2793 : Index := Scalar.indexCast c1_i32_1688
  let c1_i32_1689 : BitVec 32 := 1#32
  let v2794 : Index := Scalar.indexCast c1_i32_1689
  let c0_i32_602 : BitVec 32 := 0#32
  let c1_i32_604 : BitVec 32 := 1#32
  let arg15 : BitVec 32 := Scf.iv c0_i32_602 c1_i32_604 k0_t5
  let v2795 : Index := Scalar.indexCast arg15
  let c560_1690 : Index := 560#32
  ![1, 1, v2795.toNat, 560]
def k0_off2163 (k0_t5 : Fin k0_t5_loop.trips) : Fin 4 → Nat :=
  let c3_i32_1691 : BitVec 32 := 3#32
  let v2799 : Index := Scalar.indexCast c3_i32_1691
  let c1_i32_1692 : BitVec 32 := 1#32
  let v2800 : Index := Scalar.indexCast c1_i32_1692
  let c0_i32_602 : BitVec 32 := 0#32
  let c1_i32_604 : BitVec 32 := 1#32
  let arg15 : BitVec 32 := Scf.iv c0_i32_602 c1_i32_604 k0_t5
  let v2801 : Index := Scalar.indexCast arg15
  let c576_1693 : Index := 576#32
  ![3, 1, v2801.toNat, 576]
def k0_off2164 (k0_t5 : Fin k0_t5_loop.trips) : Fin 4 → Nat :=
  let c1_i32_1694 : BitVec 32 := 1#32
  let v2805 : Index := Scalar.indexCast c1_i32_1694
  let c1_i32_1695 : BitVec 32 := 1#32
  let v2806 : Index := Scalar.indexCast c1_i32_1695
  let c0_i32_602 : BitVec 32 := 0#32
  let c1_i32_604 : BitVec 32 := 1#32
  let arg15 : BitVec 32 := Scf.iv c0_i32_602 c1_i32_604 k0_t5
  let v2807 : Index := Scalar.indexCast arg15
  let c576_1696 : Index := 576#32
  ![1, 1, v2807.toNat, 576]
def k0_off2165 (k0_t5 : Fin k0_t5_loop.trips) : Fin 4 → Nat :=
  let c3_i32_1697 : BitVec 32 := 3#32
  let v2811 : Index := Scalar.indexCast c3_i32_1697
  let c1_i32_1698 : BitVec 32 := 1#32
  let v2812 : Index := Scalar.indexCast c1_i32_1698
  let c0_i32_602 : BitVec 32 := 0#32
  let c1_i32_604 : BitVec 32 := 1#32
  let arg15 : BitVec 32 := Scf.iv c0_i32_602 c1_i32_604 k0_t5
  let v2813 : Index := Scalar.indexCast arg15
  let c592_1699 : Index := 592#32
  ![3, 1, v2813.toNat, 592]
def k0_off2166 (k0_t5 : Fin k0_t5_loop.trips) : Fin 4 → Nat :=
  let c1_i32_1700 : BitVec 32 := 1#32
  let v2817 : Index := Scalar.indexCast c1_i32_1700
  let c1_i32_1701 : BitVec 32 := 1#32
  let v2818 : Index := Scalar.indexCast c1_i32_1701
  let c0_i32_602 : BitVec 32 := 0#32
  let c1_i32_604 : BitVec 32 := 1#32
  let arg15 : BitVec 32 := Scf.iv c0_i32_602 c1_i32_604 k0_t5
  let v2819 : Index := Scalar.indexCast arg15
  let c592_1702 : Index := 592#32
  ![1, 1, v2819.toNat, 592]
def k0_off2167 (k0_t5 : Fin k0_t5_loop.trips) : Fin 4 → Nat :=
  let c3_i32_1703 : BitVec 32 := 3#32
  let v2823 : Index := Scalar.indexCast c3_i32_1703
  let c1_i32_1704 : BitVec 32 := 1#32
  let v2824 : Index := Scalar.indexCast c1_i32_1704
  let c0_i32_602 : BitVec 32 := 0#32
  let c1_i32_604 : BitVec 32 := 1#32
  let arg15 : BitVec 32 := Scf.iv c0_i32_602 c1_i32_604 k0_t5
  let v2825 : Index := Scalar.indexCast arg15
  let c608_1705 : Index := 608#32
  ![3, 1, v2825.toNat, 608]
def k0_off2168 (k0_t5 : Fin k0_t5_loop.trips) : Fin 4 → Nat :=
  let c1_i32_1706 : BitVec 32 := 1#32
  let v2829 : Index := Scalar.indexCast c1_i32_1706
  let c1_i32_1707 : BitVec 32 := 1#32
  let v2830 : Index := Scalar.indexCast c1_i32_1707
  let c0_i32_602 : BitVec 32 := 0#32
  let c1_i32_604 : BitVec 32 := 1#32
  let arg15 : BitVec 32 := Scf.iv c0_i32_602 c1_i32_604 k0_t5
  let v2831 : Index := Scalar.indexCast arg15
  let c608_1708 : Index := 608#32
  ![1, 1, v2831.toNat, 608]
def k0_off2169 (k0_t5 : Fin k0_t5_loop.trips) : Fin 4 → Nat :=
  let c3_i32_1709 : BitVec 32 := 3#32
  let v2835 : Index := Scalar.indexCast c3_i32_1709
  let c1_i32_1710 : BitVec 32 := 1#32
  let v2836 : Index := Scalar.indexCast c1_i32_1710
  let c0_i32_602 : BitVec 32 := 0#32
  let c1_i32_604 : BitVec 32 := 1#32
  let arg15 : BitVec 32 := Scf.iv c0_i32_602 c1_i32_604 k0_t5
  let v2837 : Index := Scalar.indexCast arg15
  let c624_1711 : Index := 624#32
  ![3, 1, v2837.toNat, 624]
def k0_off2170 (k0_t5 : Fin k0_t5_loop.trips) : Fin 4 → Nat :=
  let c1_i32_1712 : BitVec 32 := 1#32
  let v2841 : Index := Scalar.indexCast c1_i32_1712
  let c1_i32_1713 : BitVec 32 := 1#32
  let v2842 : Index := Scalar.indexCast c1_i32_1713
  let c0_i32_602 : BitVec 32 := 0#32
  let c1_i32_604 : BitVec 32 := 1#32
  let arg15 : BitVec 32 := Scf.iv c0_i32_602 c1_i32_604 k0_t5
  let v2843 : Index := Scalar.indexCast arg15
  let c624_1714 : Index := 624#32
  ![1, 1, v2843.toNat, 624]
def k0_off2171 (k0_t5 : Fin k0_t5_loop.trips) : Fin 4 → Nat :=
  let c3_i32_1715 : BitVec 32 := 3#32
  let v2847 : Index := Scalar.indexCast c3_i32_1715
  let c1_i32_1716 : BitVec 32 := 1#32
  let v2848 : Index := Scalar.indexCast c1_i32_1716
  let c0_i32_602 : BitVec 32 := 0#32
  let c1_i32_604 : BitVec 32 := 1#32
  let arg15 : BitVec 32 := Scf.iv c0_i32_602 c1_i32_604 k0_t5
  let v2849 : Index := Scalar.indexCast arg15
  let c640_1717 : Index := 640#32
  ![3, 1, v2849.toNat, 640]
def k0_off2172 (k0_t5 : Fin k0_t5_loop.trips) : Fin 4 → Nat :=
  let c1_i32_1718 : BitVec 32 := 1#32
  let v2853 : Index := Scalar.indexCast c1_i32_1718
  let c1_i32_1719 : BitVec 32 := 1#32
  let v2854 : Index := Scalar.indexCast c1_i32_1719
  let c0_i32_602 : BitVec 32 := 0#32
  let c1_i32_604 : BitVec 32 := 1#32
  let arg15 : BitVec 32 := Scf.iv c0_i32_602 c1_i32_604 k0_t5
  let v2855 : Index := Scalar.indexCast arg15
  let c640_1720 : Index := 640#32
  ![1, 1, v2855.toNat, 640]
def k0_off2173 (k0_t5 : Fin k0_t5_loop.trips) : Fin 4 → Nat :=
  let c3_i32_1721 : BitVec 32 := 3#32
  let v2859 : Index := Scalar.indexCast c3_i32_1721
  let c1_i32_1722 : BitVec 32 := 1#32
  let v2860 : Index := Scalar.indexCast c1_i32_1722
  let c0_i32_602 : BitVec 32 := 0#32
  let c1_i32_604 : BitVec 32 := 1#32
  let arg15 : BitVec 32 := Scf.iv c0_i32_602 c1_i32_604 k0_t5
  let v2861 : Index := Scalar.indexCast arg15
  let c656_1723 : Index := 656#32
  ![3, 1, v2861.toNat, 656]
def k0_off2174 (k0_t5 : Fin k0_t5_loop.trips) : Fin 4 → Nat :=
  let c1_i32_1724 : BitVec 32 := 1#32
  let v2865 : Index := Scalar.indexCast c1_i32_1724
  let c1_i32_1725 : BitVec 32 := 1#32
  let v2866 : Index := Scalar.indexCast c1_i32_1725
  let c0_i32_602 : BitVec 32 := 0#32
  let c1_i32_604 : BitVec 32 := 1#32
  let arg15 : BitVec 32 := Scf.iv c0_i32_602 c1_i32_604 k0_t5
  let v2867 : Index := Scalar.indexCast arg15
  let c656_1726 : Index := 656#32
  ![1, 1, v2867.toNat, 656]
def k0_off2175 (k0_t5 : Fin k0_t5_loop.trips) : Fin 4 → Nat :=
  let c3_i32_1727 : BitVec 32 := 3#32
  let v2871 : Index := Scalar.indexCast c3_i32_1727
  let c1_i32_1728 : BitVec 32 := 1#32
  let v2872 : Index := Scalar.indexCast c1_i32_1728
  let c0_i32_602 : BitVec 32 := 0#32
  let c1_i32_604 : BitVec 32 := 1#32
  let arg15 : BitVec 32 := Scf.iv c0_i32_602 c1_i32_604 k0_t5
  let v2873 : Index := Scalar.indexCast arg15
  let c672_1729 : Index := 672#32
  ![3, 1, v2873.toNat, 672]
def k0_off2176 (k0_t5 : Fin k0_t5_loop.trips) : Fin 4 → Nat :=
  let c1_i32_1730 : BitVec 32 := 1#32
  let v2877 : Index := Scalar.indexCast c1_i32_1730
  let c1_i32_1731 : BitVec 32 := 1#32
  let v2878 : Index := Scalar.indexCast c1_i32_1731
  let c0_i32_602 : BitVec 32 := 0#32
  let c1_i32_604 : BitVec 32 := 1#32
  let arg15 : BitVec 32 := Scf.iv c0_i32_602 c1_i32_604 k0_t5
  let v2879 : Index := Scalar.indexCast arg15
  let c672_1732 : Index := 672#32
  ![1, 1, v2879.toNat, 672]
def k0_off2177 (k0_t5 : Fin k0_t5_loop.trips) : Fin 4 → Nat :=
  let c3_i32_1733 : BitVec 32 := 3#32
  let v2883 : Index := Scalar.indexCast c3_i32_1733
  let c1_i32_1734 : BitVec 32 := 1#32
  let v2884 : Index := Scalar.indexCast c1_i32_1734
  let c0_i32_602 : BitVec 32 := 0#32
  let c1_i32_604 : BitVec 32 := 1#32
  let arg15 : BitVec 32 := Scf.iv c0_i32_602 c1_i32_604 k0_t5
  let v2885 : Index := Scalar.indexCast arg15
  let c688_1735 : Index := 688#32
  ![3, 1, v2885.toNat, 688]
def k0_off2178 (k0_t5 : Fin k0_t5_loop.trips) : Fin 4 → Nat :=
  let c1_i32_1736 : BitVec 32 := 1#32
  let v2889 : Index := Scalar.indexCast c1_i32_1736
  let c1_i32_1737 : BitVec 32 := 1#32
  let v2890 : Index := Scalar.indexCast c1_i32_1737
  let c0_i32_602 : BitVec 32 := 0#32
  let c1_i32_604 : BitVec 32 := 1#32
  let arg15 : BitVec 32 := Scf.iv c0_i32_602 c1_i32_604 k0_t5
  let v2891 : Index := Scalar.indexCast arg15
  let c688_1738 : Index := 688#32
  ![1, 1, v2891.toNat, 688]
def k0_off2179 (k0_t5 : Fin k0_t5_loop.trips) : Fin 4 → Nat :=
  let c3_i32_1739 : BitVec 32 := 3#32
  let v2895 : Index := Scalar.indexCast c3_i32_1739
  let c1_i32_1740 : BitVec 32 := 1#32
  let v2896 : Index := Scalar.indexCast c1_i32_1740
  let c0_i32_602 : BitVec 32 := 0#32
  let c1_i32_604 : BitVec 32 := 1#32
  let arg15 : BitVec 32 := Scf.iv c0_i32_602 c1_i32_604 k0_t5
  let v2897 : Index := Scalar.indexCast arg15
  let c704_1741 : Index := 704#32
  ![3, 1, v2897.toNat, 704]
def k0_off2180 (k0_t5 : Fin k0_t5_loop.trips) : Fin 4 → Nat :=
  let c1_i32_1742 : BitVec 32 := 1#32
  let v2901 : Index := Scalar.indexCast c1_i32_1742
  let c1_i32_1743 : BitVec 32 := 1#32
  let v2902 : Index := Scalar.indexCast c1_i32_1743
  let c0_i32_602 : BitVec 32 := 0#32
  let c1_i32_604 : BitVec 32 := 1#32
  let arg15 : BitVec 32 := Scf.iv c0_i32_602 c1_i32_604 k0_t5
  let v2903 : Index := Scalar.indexCast arg15
  let c704_1744 : Index := 704#32
  ![1, 1, v2903.toNat, 704]
def k0_off2181 (k0_t5 : Fin k0_t5_loop.trips) : Fin 4 → Nat :=
  let c3_i32_1745 : BitVec 32 := 3#32
  let v2907 : Index := Scalar.indexCast c3_i32_1745
  let c1_i32_1746 : BitVec 32 := 1#32
  let v2908 : Index := Scalar.indexCast c1_i32_1746
  let c0_i32_602 : BitVec 32 := 0#32
  let c1_i32_604 : BitVec 32 := 1#32
  let arg15 : BitVec 32 := Scf.iv c0_i32_602 c1_i32_604 k0_t5
  let v2909 : Index := Scalar.indexCast arg15
  let c720_1747 : Index := 720#32
  ![3, 1, v2909.toNat, 720]
def k0_off2182 (k0_t5 : Fin k0_t5_loop.trips) : Fin 4 → Nat :=
  let c1_i32_1748 : BitVec 32 := 1#32
  let v2913 : Index := Scalar.indexCast c1_i32_1748
  let c1_i32_1749 : BitVec 32 := 1#32
  let v2914 : Index := Scalar.indexCast c1_i32_1749
  let c0_i32_602 : BitVec 32 := 0#32
  let c1_i32_604 : BitVec 32 := 1#32
  let arg15 : BitVec 32 := Scf.iv c0_i32_602 c1_i32_604 k0_t5
  let v2915 : Index := Scalar.indexCast arg15
  let c720_1750 : Index := 720#32
  ![1, 1, v2915.toNat, 720]
def k0_off2183 (k0_t5 : Fin k0_t5_loop.trips) : Fin 4 → Nat :=
  let c3_i32_1751 : BitVec 32 := 3#32
  let v2919 : Index := Scalar.indexCast c3_i32_1751
  let c1_i32_1752 : BitVec 32 := 1#32
  let v2920 : Index := Scalar.indexCast c1_i32_1752
  let c0_i32_602 : BitVec 32 := 0#32
  let c1_i32_604 : BitVec 32 := 1#32
  let arg15 : BitVec 32 := Scf.iv c0_i32_602 c1_i32_604 k0_t5
  let v2921 : Index := Scalar.indexCast arg15
  let c736_1753 : Index := 736#32
  ![3, 1, v2921.toNat, 736]
def k0_off2184 (k0_t5 : Fin k0_t5_loop.trips) : Fin 4 → Nat :=
  let c1_i32_1754 : BitVec 32 := 1#32
  let v2925 : Index := Scalar.indexCast c1_i32_1754
  let c1_i32_1755 : BitVec 32 := 1#32
  let v2926 : Index := Scalar.indexCast c1_i32_1755
  let c0_i32_602 : BitVec 32 := 0#32
  let c1_i32_604 : BitVec 32 := 1#32
  let arg15 : BitVec 32 := Scf.iv c0_i32_602 c1_i32_604 k0_t5
  let v2927 : Index := Scalar.indexCast arg15
  let c736_1756 : Index := 736#32
  ![1, 1, v2927.toNat, 736]
def k0_off2185 (k0_t5 : Fin k0_t5_loop.trips) : Fin 4 → Nat :=
  let c3_i32_1757 : BitVec 32 := 3#32
  let v2931 : Index := Scalar.indexCast c3_i32_1757
  let c1_i32_1758 : BitVec 32 := 1#32
  let v2932 : Index := Scalar.indexCast c1_i32_1758
  let c0_i32_602 : BitVec 32 := 0#32
  let c1_i32_604 : BitVec 32 := 1#32
  let arg15 : BitVec 32 := Scf.iv c0_i32_602 c1_i32_604 k0_t5
  let v2933 : Index := Scalar.indexCast arg15
  let c752_1759 : Index := 752#32
  ![3, 1, v2933.toNat, 752]
def k0_off2186 (k0_t5 : Fin k0_t5_loop.trips) : Fin 4 → Nat :=
  let c1_i32_1760 : BitVec 32 := 1#32
  let v2937 : Index := Scalar.indexCast c1_i32_1760
  let c1_i32_1761 : BitVec 32 := 1#32
  let v2938 : Index := Scalar.indexCast c1_i32_1761
  let c0_i32_602 : BitVec 32 := 0#32
  let c1_i32_604 : BitVec 32 := 1#32
  let arg15 : BitVec 32 := Scf.iv c0_i32_602 c1_i32_604 k0_t5
  let v2939 : Index := Scalar.indexCast arg15
  let c752_1762 : Index := 752#32
  ![1, 1, v2939.toNat, 752]
def k0_off2187 (k0_t5 : Fin k0_t5_loop.trips) : Fin 4 → Nat :=
  let c3_i32_1763 : BitVec 32 := 3#32
  let v2943 : Index := Scalar.indexCast c3_i32_1763
  let c1_i32_1764 : BitVec 32 := 1#32
  let v2944 : Index := Scalar.indexCast c1_i32_1764
  let c0_i32_602 : BitVec 32 := 0#32
  let c1_i32_604 : BitVec 32 := 1#32
  let arg15 : BitVec 32 := Scf.iv c0_i32_602 c1_i32_604 k0_t5
  let v2945 : Index := Scalar.indexCast arg15
  let c768_1765 : Index := 768#32
  ![3, 1, v2945.toNat, 768]
def k0_off2188 (k0_t5 : Fin k0_t5_loop.trips) : Fin 4 → Nat :=
  let c1_i32_1766 : BitVec 32 := 1#32
  let v2949 : Index := Scalar.indexCast c1_i32_1766
  let c1_i32_1767 : BitVec 32 := 1#32
  let v2950 : Index := Scalar.indexCast c1_i32_1767
  let c0_i32_602 : BitVec 32 := 0#32
  let c1_i32_604 : BitVec 32 := 1#32
  let arg15 : BitVec 32 := Scf.iv c0_i32_602 c1_i32_604 k0_t5
  let v2951 : Index := Scalar.indexCast arg15
  let c768_1768 : Index := 768#32
  ![1, 1, v2951.toNat, 768]
def k0_off2189 (k0_t5 : Fin k0_t5_loop.trips) : Fin 4 → Nat :=
  let c3_i32_1769 : BitVec 32 := 3#32
  let v2955 : Index := Scalar.indexCast c3_i32_1769
  let c1_i32_1770 : BitVec 32 := 1#32
  let v2956 : Index := Scalar.indexCast c1_i32_1770
  let c0_i32_602 : BitVec 32 := 0#32
  let c1_i32_604 : BitVec 32 := 1#32
  let arg15 : BitVec 32 := Scf.iv c0_i32_602 c1_i32_604 k0_t5
  let v2957 : Index := Scalar.indexCast arg15
  let c784_1771 : Index := 784#32
  ![3, 1, v2957.toNat, 784]
def k0_off2190 (k0_t5 : Fin k0_t5_loop.trips) : Fin 4 → Nat :=
  let c1_i32_1772 : BitVec 32 := 1#32
  let v2961 : Index := Scalar.indexCast c1_i32_1772
  let c1_i32_1773 : BitVec 32 := 1#32
  let v2962 : Index := Scalar.indexCast c1_i32_1773
  let c0_i32_602 : BitVec 32 := 0#32
  let c1_i32_604 : BitVec 32 := 1#32
  let arg15 : BitVec 32 := Scf.iv c0_i32_602 c1_i32_604 k0_t5
  let v2963 : Index := Scalar.indexCast arg15
  let c784_1774 : Index := 784#32
  ![1, 1, v2963.toNat, 784]
def k0_off2191 (k0_t5 : Fin k0_t5_loop.trips) : Fin 4 → Nat :=
  let c3_i32_1775 : BitVec 32 := 3#32
  let v2967 : Index := Scalar.indexCast c3_i32_1775
  let c1_i32_1776 : BitVec 32 := 1#32
  let v2968 : Index := Scalar.indexCast c1_i32_1776
  let c0_i32_602 : BitVec 32 := 0#32
  let c1_i32_604 : BitVec 32 := 1#32
  let arg15 : BitVec 32 := Scf.iv c0_i32_602 c1_i32_604 k0_t5
  let v2969 : Index := Scalar.indexCast arg15
  let c800_1777 : Index := 800#32
  ![3, 1, v2969.toNat, 800]
def k0_off2192 (k0_t5 : Fin k0_t5_loop.trips) : Fin 4 → Nat :=
  let c1_i32_1778 : BitVec 32 := 1#32
  let v2973 : Index := Scalar.indexCast c1_i32_1778
  let c1_i32_1779 : BitVec 32 := 1#32
  let v2974 : Index := Scalar.indexCast c1_i32_1779
  let c0_i32_602 : BitVec 32 := 0#32
  let c1_i32_604 : BitVec 32 := 1#32
  let arg15 : BitVec 32 := Scf.iv c0_i32_602 c1_i32_604 k0_t5
  let v2975 : Index := Scalar.indexCast arg15
  let c800_1780 : Index := 800#32
  ![1, 1, v2975.toNat, 800]
def k0_off2193 (k0_t5 : Fin k0_t5_loop.trips) : Fin 4 → Nat :=
  let c3_i32_1781 : BitVec 32 := 3#32
  let v2979 : Index := Scalar.indexCast c3_i32_1781
  let c1_i32_1782 : BitVec 32 := 1#32
  let v2980 : Index := Scalar.indexCast c1_i32_1782
  let c0_i32_602 : BitVec 32 := 0#32
  let c1_i32_604 : BitVec 32 := 1#32
  let arg15 : BitVec 32 := Scf.iv c0_i32_602 c1_i32_604 k0_t5
  let v2981 : Index := Scalar.indexCast arg15
  let c816_1783 : Index := 816#32
  ![3, 1, v2981.toNat, 816]
def k0_off2194 (k0_t5 : Fin k0_t5_loop.trips) : Fin 4 → Nat :=
  let c1_i32_1784 : BitVec 32 := 1#32
  let v2985 : Index := Scalar.indexCast c1_i32_1784
  let c1_i32_1785 : BitVec 32 := 1#32
  let v2986 : Index := Scalar.indexCast c1_i32_1785
  let c0_i32_602 : BitVec 32 := 0#32
  let c1_i32_604 : BitVec 32 := 1#32
  let arg15 : BitVec 32 := Scf.iv c0_i32_602 c1_i32_604 k0_t5
  let v2987 : Index := Scalar.indexCast arg15
  let c816_1786 : Index := 816#32
  ![1, 1, v2987.toNat, 816]
def k0_off2195 (k0_t5 : Fin k0_t5_loop.trips) : Fin 4 → Nat :=
  let c3_i32_1787 : BitVec 32 := 3#32
  let v2991 : Index := Scalar.indexCast c3_i32_1787
  let c1_i32_1788 : BitVec 32 := 1#32
  let v2992 : Index := Scalar.indexCast c1_i32_1788
  let c0_i32_602 : BitVec 32 := 0#32
  let c1_i32_604 : BitVec 32 := 1#32
  let arg15 : BitVec 32 := Scf.iv c0_i32_602 c1_i32_604 k0_t5
  let v2993 : Index := Scalar.indexCast arg15
  let c832_1789 : Index := 832#32
  ![3, 1, v2993.toNat, 832]
def k0_off2196 (k0_t5 : Fin k0_t5_loop.trips) : Fin 4 → Nat :=
  let c1_i32_1790 : BitVec 32 := 1#32
  let v2997 : Index := Scalar.indexCast c1_i32_1790
  let c1_i32_1791 : BitVec 32 := 1#32
  let v2998 : Index := Scalar.indexCast c1_i32_1791
  let c0_i32_602 : BitVec 32 := 0#32
  let c1_i32_604 : BitVec 32 := 1#32
  let arg15 : BitVec 32 := Scf.iv c0_i32_602 c1_i32_604 k0_t5
  let v2999 : Index := Scalar.indexCast arg15
  let c832_1792 : Index := 832#32
  ![1, 1, v2999.toNat, 832]
def k0_off2197 (k0_t5 : Fin k0_t5_loop.trips) : Fin 4 → Nat :=
  let c3_i32_1793 : BitVec 32 := 3#32
  let v3003 : Index := Scalar.indexCast c3_i32_1793
  let c1_i32_1794 : BitVec 32 := 1#32
  let v3004 : Index := Scalar.indexCast c1_i32_1794
  let c0_i32_602 : BitVec 32 := 0#32
  let c1_i32_604 : BitVec 32 := 1#32
  let arg15 : BitVec 32 := Scf.iv c0_i32_602 c1_i32_604 k0_t5
  let v3005 : Index := Scalar.indexCast arg15
  let c848_1795 : Index := 848#32
  ![3, 1, v3005.toNat, 848]
def k0_off2198 (k0_t5 : Fin k0_t5_loop.trips) : Fin 4 → Nat :=
  let c1_i32_1796 : BitVec 32 := 1#32
  let v3009 : Index := Scalar.indexCast c1_i32_1796
  let c1_i32_1797 : BitVec 32 := 1#32
  let v3010 : Index := Scalar.indexCast c1_i32_1797
  let c0_i32_602 : BitVec 32 := 0#32
  let c1_i32_604 : BitVec 32 := 1#32
  let arg15 : BitVec 32 := Scf.iv c0_i32_602 c1_i32_604 k0_t5
  let v3011 : Index := Scalar.indexCast arg15
  let c848_1798 : Index := 848#32
  ![1, 1, v3011.toNat, 848]
def k0_off2199 (k0_t5 : Fin k0_t5_loop.trips) : Fin 4 → Nat :=
  let c3_i32_1799 : BitVec 32 := 3#32
  let v3015 : Index := Scalar.indexCast c3_i32_1799
  let c1_i32_1800 : BitVec 32 := 1#32
  let v3016 : Index := Scalar.indexCast c1_i32_1800
  let c0_i32_602 : BitVec 32 := 0#32
  let c1_i32_604 : BitVec 32 := 1#32
  let arg15 : BitVec 32 := Scf.iv c0_i32_602 c1_i32_604 k0_t5
  let v3017 : Index := Scalar.indexCast arg15
  let c864_1801 : Index := 864#32
  ![3, 1, v3017.toNat, 864]
def k0_off2200 (k0_t5 : Fin k0_t5_loop.trips) : Fin 4 → Nat :=
  let c1_i32_1802 : BitVec 32 := 1#32
  let v3021 : Index := Scalar.indexCast c1_i32_1802
  let c1_i32_1803 : BitVec 32 := 1#32
  let v3022 : Index := Scalar.indexCast c1_i32_1803
  let c0_i32_602 : BitVec 32 := 0#32
  let c1_i32_604 : BitVec 32 := 1#32
  let arg15 : BitVec 32 := Scf.iv c0_i32_602 c1_i32_604 k0_t5
  let v3023 : Index := Scalar.indexCast arg15
  let c864_1804 : Index := 864#32
  ![1, 1, v3023.toNat, 864]
def k0_off2201 (k0_t5 : Fin k0_t5_loop.trips) : Fin 4 → Nat :=
  let c3_i32_1805 : BitVec 32 := 3#32
  let v3027 : Index := Scalar.indexCast c3_i32_1805
  let c1_i32_1806 : BitVec 32 := 1#32
  let v3028 : Index := Scalar.indexCast c1_i32_1806
  let c0_i32_602 : BitVec 32 := 0#32
  let c1_i32_604 : BitVec 32 := 1#32
  let arg15 : BitVec 32 := Scf.iv c0_i32_602 c1_i32_604 k0_t5
  let v3029 : Index := Scalar.indexCast arg15
  let c880_1807 : Index := 880#32
  ![3, 1, v3029.toNat, 880]
def k0_off2202 (k0_t5 : Fin k0_t5_loop.trips) : Fin 4 → Nat :=
  let c1_i32_1808 : BitVec 32 := 1#32
  let v3033 : Index := Scalar.indexCast c1_i32_1808
  let c1_i32_1809 : BitVec 32 := 1#32
  let v3034 : Index := Scalar.indexCast c1_i32_1809
  let c0_i32_602 : BitVec 32 := 0#32
  let c1_i32_604 : BitVec 32 := 1#32
  let arg15 : BitVec 32 := Scf.iv c0_i32_602 c1_i32_604 k0_t5
  let v3035 : Index := Scalar.indexCast arg15
  let c880_1810 : Index := 880#32
  ![1, 1, v3035.toNat, 880]
def k0_off2203 (k0_t5 : Fin k0_t5_loop.trips) : Fin 4 → Nat :=
  let c3_i32_1811 : BitVec 32 := 3#32
  let v3039 : Index := Scalar.indexCast c3_i32_1811
  let c1_i32_1812 : BitVec 32 := 1#32
  let v3040 : Index := Scalar.indexCast c1_i32_1812
  let c0_i32_602 : BitVec 32 := 0#32
  let c1_i32_604 : BitVec 32 := 1#32
  let arg15 : BitVec 32 := Scf.iv c0_i32_602 c1_i32_604 k0_t5
  let v3041 : Index := Scalar.indexCast arg15
  let c896_1813 : Index := 896#32
  ![3, 1, v3041.toNat, 896]
def k0_off2204 (k0_t5 : Fin k0_t5_loop.trips) : Fin 4 → Nat :=
  let c1_i32_1814 : BitVec 32 := 1#32
  let v3045 : Index := Scalar.indexCast c1_i32_1814
  let c1_i32_1815 : BitVec 32 := 1#32
  let v3046 : Index := Scalar.indexCast c1_i32_1815
  let c0_i32_602 : BitVec 32 := 0#32
  let c1_i32_604 : BitVec 32 := 1#32
  let arg15 : BitVec 32 := Scf.iv c0_i32_602 c1_i32_604 k0_t5
  let v3047 : Index := Scalar.indexCast arg15
  let c896_1816 : Index := 896#32
  ![1, 1, v3047.toNat, 896]
def k0_off2205 (k0_t5 : Fin k0_t5_loop.trips) : Fin 4 → Nat :=
  let c3_i32_1817 : BitVec 32 := 3#32
  let v3051 : Index := Scalar.indexCast c3_i32_1817
  let c1_i32_1818 : BitVec 32 := 1#32
  let v3052 : Index := Scalar.indexCast c1_i32_1818
  let c0_i32_602 : BitVec 32 := 0#32
  let c1_i32_604 : BitVec 32 := 1#32
  let arg15 : BitVec 32 := Scf.iv c0_i32_602 c1_i32_604 k0_t5
  let v3053 : Index := Scalar.indexCast arg15
  let c912_1819 : Index := 912#32
  ![3, 1, v3053.toNat, 912]
def k0_off2206 (k0_t5 : Fin k0_t5_loop.trips) : Fin 4 → Nat :=
  let c1_i32_1820 : BitVec 32 := 1#32
  let v3057 : Index := Scalar.indexCast c1_i32_1820
  let c1_i32_1821 : BitVec 32 := 1#32
  let v3058 : Index := Scalar.indexCast c1_i32_1821
  let c0_i32_602 : BitVec 32 := 0#32
  let c1_i32_604 : BitVec 32 := 1#32
  let arg15 : BitVec 32 := Scf.iv c0_i32_602 c1_i32_604 k0_t5
  let v3059 : Index := Scalar.indexCast arg15
  let c912_1822 : Index := 912#32
  ![1, 1, v3059.toNat, 912]
def k0_off2207 (k0_t5 : Fin k0_t5_loop.trips) : Fin 4 → Nat :=
  let c3_i32_1823 : BitVec 32 := 3#32
  let v3063 : Index := Scalar.indexCast c3_i32_1823
  let c1_i32_1824 : BitVec 32 := 1#32
  let v3064 : Index := Scalar.indexCast c1_i32_1824
  let c0_i32_602 : BitVec 32 := 0#32
  let c1_i32_604 : BitVec 32 := 1#32
  let arg15 : BitVec 32 := Scf.iv c0_i32_602 c1_i32_604 k0_t5
  let v3065 : Index := Scalar.indexCast arg15
  let c928_1825 : Index := 928#32
  ![3, 1, v3065.toNat, 928]
def k0_off2208 (k0_t5 : Fin k0_t5_loop.trips) : Fin 4 → Nat :=
  let c1_i32_1826 : BitVec 32 := 1#32
  let v3069 : Index := Scalar.indexCast c1_i32_1826
  let c1_i32_1827 : BitVec 32 := 1#32
  let v3070 : Index := Scalar.indexCast c1_i32_1827
  let c0_i32_602 : BitVec 32 := 0#32
  let c1_i32_604 : BitVec 32 := 1#32
  let arg15 : BitVec 32 := Scf.iv c0_i32_602 c1_i32_604 k0_t5
  let v3071 : Index := Scalar.indexCast arg15
  let c928_1828 : Index := 928#32
  ![1, 1, v3071.toNat, 928]
def k0_off2209 (k0_t5 : Fin k0_t5_loop.trips) : Fin 4 → Nat :=
  let c3_i32_1829 : BitVec 32 := 3#32
  let v3075 : Index := Scalar.indexCast c3_i32_1829
  let c1_i32_1830 : BitVec 32 := 1#32
  let v3076 : Index := Scalar.indexCast c1_i32_1830
  let c0_i32_602 : BitVec 32 := 0#32
  let c1_i32_604 : BitVec 32 := 1#32
  let arg15 : BitVec 32 := Scf.iv c0_i32_602 c1_i32_604 k0_t5
  let v3077 : Index := Scalar.indexCast arg15
  let c944_1831 : Index := 944#32
  ![3, 1, v3077.toNat, 944]
def k0_off2210 (k0_t5 : Fin k0_t5_loop.trips) : Fin 4 → Nat :=
  let c1_i32_1832 : BitVec 32 := 1#32
  let v3081 : Index := Scalar.indexCast c1_i32_1832
  let c1_i32_1833 : BitVec 32 := 1#32
  let v3082 : Index := Scalar.indexCast c1_i32_1833
  let c0_i32_602 : BitVec 32 := 0#32
  let c1_i32_604 : BitVec 32 := 1#32
  let arg15 : BitVec 32 := Scf.iv c0_i32_602 c1_i32_604 k0_t5
  let v3083 : Index := Scalar.indexCast arg15
  let c944_1834 : Index := 944#32
  ![1, 1, v3083.toNat, 944]
def k0_off2211 (k0_t5 : Fin k0_t5_loop.trips) : Fin 4 → Nat :=
  let c3_i32_1835 : BitVec 32 := 3#32
  let v3087 : Index := Scalar.indexCast c3_i32_1835
  let c1_i32_1836 : BitVec 32 := 1#32
  let v3088 : Index := Scalar.indexCast c1_i32_1836
  let c0_i32_602 : BitVec 32 := 0#32
  let c1_i32_604 : BitVec 32 := 1#32
  let arg15 : BitVec 32 := Scf.iv c0_i32_602 c1_i32_604 k0_t5
  let v3089 : Index := Scalar.indexCast arg15
  let c960_1837 : Index := 960#32
  ![3, 1, v3089.toNat, 960]
def k0_off2212 (k0_t5 : Fin k0_t5_loop.trips) : Fin 4 → Nat :=
  let c1_i32_1838 : BitVec 32 := 1#32
  let v3093 : Index := Scalar.indexCast c1_i32_1838
  let c1_i32_1839 : BitVec 32 := 1#32
  let v3094 : Index := Scalar.indexCast c1_i32_1839
  let c0_i32_602 : BitVec 32 := 0#32
  let c1_i32_604 : BitVec 32 := 1#32
  let arg15 : BitVec 32 := Scf.iv c0_i32_602 c1_i32_604 k0_t5
  let v3095 : Index := Scalar.indexCast arg15
  let c960_1840 : Index := 960#32
  ![1, 1, v3095.toNat, 960]
def k0_off2213 (k0_t5 : Fin k0_t5_loop.trips) : Fin 4 → Nat :=
  let c3_i32_1841 : BitVec 32 := 3#32
  let v3099 : Index := Scalar.indexCast c3_i32_1841
  let c1_i32_1842 : BitVec 32 := 1#32
  let v3100 : Index := Scalar.indexCast c1_i32_1842
  let c0_i32_602 : BitVec 32 := 0#32
  let c1_i32_604 : BitVec 32 := 1#32
  let arg15 : BitVec 32 := Scf.iv c0_i32_602 c1_i32_604 k0_t5
  let v3101 : Index := Scalar.indexCast arg15
  let c976_1843 : Index := 976#32
  ![3, 1, v3101.toNat, 976]
def k0_off2214 (k0_t5 : Fin k0_t5_loop.trips) : Fin 4 → Nat :=
  let c1_i32_1844 : BitVec 32 := 1#32
  let v3105 : Index := Scalar.indexCast c1_i32_1844
  let c1_i32_1845 : BitVec 32 := 1#32
  let v3106 : Index := Scalar.indexCast c1_i32_1845
  let c0_i32_602 : BitVec 32 := 0#32
  let c1_i32_604 : BitVec 32 := 1#32
  let arg15 : BitVec 32 := Scf.iv c0_i32_602 c1_i32_604 k0_t5
  let v3107 : Index := Scalar.indexCast arg15
  let c976_1846 : Index := 976#32
  ![1, 1, v3107.toNat, 976]
def k0_off2215 (k0_t5 : Fin k0_t5_loop.trips) : Fin 4 → Nat :=
  let c3_i32_1847 : BitVec 32 := 3#32
  let v3111 : Index := Scalar.indexCast c3_i32_1847
  let c1_i32_1848 : BitVec 32 := 1#32
  let v3112 : Index := Scalar.indexCast c1_i32_1848
  let c0_i32_602 : BitVec 32 := 0#32
  let c1_i32_604 : BitVec 32 := 1#32
  let arg15 : BitVec 32 := Scf.iv c0_i32_602 c1_i32_604 k0_t5
  let v3113 : Index := Scalar.indexCast arg15
  let c992_1849 : Index := 992#32
  ![3, 1, v3113.toNat, 992]
def k0_off2216 (k0_t5 : Fin k0_t5_loop.trips) : Fin 4 → Nat :=
  let c1_i32_1850 : BitVec 32 := 1#32
  let v3117 : Index := Scalar.indexCast c1_i32_1850
  let c1_i32_1851 : BitVec 32 := 1#32
  let v3118 : Index := Scalar.indexCast c1_i32_1851
  let c0_i32_602 : BitVec 32 := 0#32
  let c1_i32_604 : BitVec 32 := 1#32
  let arg15 : BitVec 32 := Scf.iv c0_i32_602 c1_i32_604 k0_t5
  let v3119 : Index := Scalar.indexCast arg15
  let c992_1852 : Index := 992#32
  ![1, 1, v3119.toNat, 992]
def k0_off2217 (k0_t5 : Fin k0_t5_loop.trips) : Fin 4 → Nat :=
  let c3_i32_1853 : BitVec 32 := 3#32
  let v3123 : Index := Scalar.indexCast c3_i32_1853
  let c1_i32_1854 : BitVec 32 := 1#32
  let v3124 : Index := Scalar.indexCast c1_i32_1854
  let c0_i32_602 : BitVec 32 := 0#32
  let c1_i32_604 : BitVec 32 := 1#32
  let arg15 : BitVec 32 := Scf.iv c0_i32_602 c1_i32_604 k0_t5
  let v3125 : Index := Scalar.indexCast arg15
  let c1008_1855 : Index := 1008#32
  ![3, 1, v3125.toNat, 1008]
def k0_off2218 (k0_t5 : Fin k0_t5_loop.trips) : Fin 4 → Nat :=
  let c1_i32_1856 : BitVec 32 := 1#32
  let v3129 : Index := Scalar.indexCast c1_i32_1856
  let c1_i32_1857 : BitVec 32 := 1#32
  let v3130 : Index := Scalar.indexCast c1_i32_1857
  let c0_i32_602 : BitVec 32 := 0#32
  let c1_i32_604 : BitVec 32 := 1#32
  let arg15 : BitVec 32 := Scf.iv c0_i32_602 c1_i32_604 k0_t5
  let v3131 : Index := Scalar.indexCast arg15
  let c1008_1858 : Index := 1008#32
  ![1, 1, v3131.toNat, 1008]
def k0_off2219 (k0_t5 : Fin k0_t5_loop.trips) : Fin 4 → Nat :=
  let c3_i32_1859 : BitVec 32 := 3#32
  let v3135 : Index := Scalar.indexCast c3_i32_1859
  let c2_i32_1860 : BitVec 32 := 2#32
  let v3136 : Index := Scalar.indexCast c2_i32_1860
  let c0_i32_602 : BitVec 32 := 0#32
  let c1_i32_604 : BitVec 32 := 1#32
  let arg15 : BitVec 32 := Scf.iv c0_i32_602 c1_i32_604 k0_t5
  let v3137 : Index := Scalar.indexCast arg15
  let c512_1861 : Index := 512#32
  ![3, 2, v3137.toNat, 512]
def k0_off2220 (k0_t5 : Fin k0_t5_loop.trips) : Fin 4 → Nat :=
  let c1_i32_1862 : BitVec 32 := 1#32
  let v3141 : Index := Scalar.indexCast c1_i32_1862
  let c2_i32_1863 : BitVec 32 := 2#32
  let v3142 : Index := Scalar.indexCast c2_i32_1863
  let c0_i32_602 : BitVec 32 := 0#32
  let c1_i32_604 : BitVec 32 := 1#32
  let arg15 : BitVec 32 := Scf.iv c0_i32_602 c1_i32_604 k0_t5
  let v3143 : Index := Scalar.indexCast arg15
  let c512_1864 : Index := 512#32
  ![1, 2, v3143.toNat, 512]
def k0_off2221 (k0_t5 : Fin k0_t5_loop.trips) : Fin 4 → Nat :=
  let c3_i32_1865 : BitVec 32 := 3#32
  let v3147 : Index := Scalar.indexCast c3_i32_1865
  let c2_i32_1866 : BitVec 32 := 2#32
  let v3148 : Index := Scalar.indexCast c2_i32_1866
  let c0_i32_602 : BitVec 32 := 0#32
  let c1_i32_604 : BitVec 32 := 1#32
  let arg15 : BitVec 32 := Scf.iv c0_i32_602 c1_i32_604 k0_t5
  let v3149 : Index := Scalar.indexCast arg15
  let c528_1867 : Index := 528#32
  ![3, 2, v3149.toNat, 528]
def k0_off2222 (k0_t5 : Fin k0_t5_loop.trips) : Fin 4 → Nat :=
  let c1_i32_1868 : BitVec 32 := 1#32
  let v3153 : Index := Scalar.indexCast c1_i32_1868
  let c2_i32_1869 : BitVec 32 := 2#32
  let v3154 : Index := Scalar.indexCast c2_i32_1869
  let c0_i32_602 : BitVec 32 := 0#32
  let c1_i32_604 : BitVec 32 := 1#32
  let arg15 : BitVec 32 := Scf.iv c0_i32_602 c1_i32_604 k0_t5
  let v3155 : Index := Scalar.indexCast arg15
  let c528_1870 : Index := 528#32
  ![1, 2, v3155.toNat, 528]
def k0_off2223 (k0_t5 : Fin k0_t5_loop.trips) : Fin 4 → Nat :=
  let c3_i32_1871 : BitVec 32 := 3#32
  let v3159 : Index := Scalar.indexCast c3_i32_1871
  let c2_i32_1872 : BitVec 32 := 2#32
  let v3160 : Index := Scalar.indexCast c2_i32_1872
  let c0_i32_602 : BitVec 32 := 0#32
  let c1_i32_604 : BitVec 32 := 1#32
  let arg15 : BitVec 32 := Scf.iv c0_i32_602 c1_i32_604 k0_t5
  let v3161 : Index := Scalar.indexCast arg15
  let c544_1873 : Index := 544#32
  ![3, 2, v3161.toNat, 544]
def k0_off2224 (k0_t5 : Fin k0_t5_loop.trips) : Fin 4 → Nat :=
  let c1_i32_1874 : BitVec 32 := 1#32
  let v3165 : Index := Scalar.indexCast c1_i32_1874
  let c2_i32_1875 : BitVec 32 := 2#32
  let v3166 : Index := Scalar.indexCast c2_i32_1875
  let c0_i32_602 : BitVec 32 := 0#32
  let c1_i32_604 : BitVec 32 := 1#32
  let arg15 : BitVec 32 := Scf.iv c0_i32_602 c1_i32_604 k0_t5
  let v3167 : Index := Scalar.indexCast arg15
  let c544_1876 : Index := 544#32
  ![1, 2, v3167.toNat, 544]
def k0_off2225 (k0_t5 : Fin k0_t5_loop.trips) : Fin 4 → Nat :=
  let c3_i32_1877 : BitVec 32 := 3#32
  let v3171 : Index := Scalar.indexCast c3_i32_1877
  let c2_i32_1878 : BitVec 32 := 2#32
  let v3172 : Index := Scalar.indexCast c2_i32_1878
  let c0_i32_602 : BitVec 32 := 0#32
  let c1_i32_604 : BitVec 32 := 1#32
  let arg15 : BitVec 32 := Scf.iv c0_i32_602 c1_i32_604 k0_t5
  let v3173 : Index := Scalar.indexCast arg15
  let c560_1879 : Index := 560#32
  ![3, 2, v3173.toNat, 560]
def k0_off2226 (k0_t5 : Fin k0_t5_loop.trips) : Fin 4 → Nat :=
  let c1_i32_1880 : BitVec 32 := 1#32
  let v3177 : Index := Scalar.indexCast c1_i32_1880
  let c2_i32_1881 : BitVec 32 := 2#32
  let v3178 : Index := Scalar.indexCast c2_i32_1881
  let c0_i32_602 : BitVec 32 := 0#32
  let c1_i32_604 : BitVec 32 := 1#32
  let arg15 : BitVec 32 := Scf.iv c0_i32_602 c1_i32_604 k0_t5
  let v3179 : Index := Scalar.indexCast arg15
  let c560_1882 : Index := 560#32
  ![1, 2, v3179.toNat, 560]
def k0_off2227 (k0_t5 : Fin k0_t5_loop.trips) : Fin 4 → Nat :=
  let c3_i32_1883 : BitVec 32 := 3#32
  let v3183 : Index := Scalar.indexCast c3_i32_1883
  let c2_i32_1884 : BitVec 32 := 2#32
  let v3184 : Index := Scalar.indexCast c2_i32_1884
  let c0_i32_602 : BitVec 32 := 0#32
  let c1_i32_604 : BitVec 32 := 1#32
  let arg15 : BitVec 32 := Scf.iv c0_i32_602 c1_i32_604 k0_t5
  let v3185 : Index := Scalar.indexCast arg15
  let c576_1885 : Index := 576#32
  ![3, 2, v3185.toNat, 576]
def k0_off2228 (k0_t5 : Fin k0_t5_loop.trips) : Fin 4 → Nat :=
  let c1_i32_1886 : BitVec 32 := 1#32
  let v3189 : Index := Scalar.indexCast c1_i32_1886
  let c2_i32_1887 : BitVec 32 := 2#32
  let v3190 : Index := Scalar.indexCast c2_i32_1887
  let c0_i32_602 : BitVec 32 := 0#32
  let c1_i32_604 : BitVec 32 := 1#32
  let arg15 : BitVec 32 := Scf.iv c0_i32_602 c1_i32_604 k0_t5
  let v3191 : Index := Scalar.indexCast arg15
  let c576_1888 : Index := 576#32
  ![1, 2, v3191.toNat, 576]
def k0_off2229 (k0_t5 : Fin k0_t5_loop.trips) : Fin 4 → Nat :=
  let c3_i32_1889 : BitVec 32 := 3#32
  let v3195 : Index := Scalar.indexCast c3_i32_1889
  let c2_i32_1890 : BitVec 32 := 2#32
  let v3196 : Index := Scalar.indexCast c2_i32_1890
  let c0_i32_602 : BitVec 32 := 0#32
  let c1_i32_604 : BitVec 32 := 1#32
  let arg15 : BitVec 32 := Scf.iv c0_i32_602 c1_i32_604 k0_t5
  let v3197 : Index := Scalar.indexCast arg15
  let c592_1891 : Index := 592#32
  ![3, 2, v3197.toNat, 592]
def k0_off2230 (k0_t5 : Fin k0_t5_loop.trips) : Fin 4 → Nat :=
  let c1_i32_1892 : BitVec 32 := 1#32
  let v3201 : Index := Scalar.indexCast c1_i32_1892
  let c2_i32_1893 : BitVec 32 := 2#32
  let v3202 : Index := Scalar.indexCast c2_i32_1893
  let c0_i32_602 : BitVec 32 := 0#32
  let c1_i32_604 : BitVec 32 := 1#32
  let arg15 : BitVec 32 := Scf.iv c0_i32_602 c1_i32_604 k0_t5
  let v3203 : Index := Scalar.indexCast arg15
  let c592_1894 : Index := 592#32
  ![1, 2, v3203.toNat, 592]
def k0_off2231 (k0_t5 : Fin k0_t5_loop.trips) : Fin 4 → Nat :=
  let c3_i32_1895 : BitVec 32 := 3#32
  let v3207 : Index := Scalar.indexCast c3_i32_1895
  let c2_i32_1896 : BitVec 32 := 2#32
  let v3208 : Index := Scalar.indexCast c2_i32_1896
  let c0_i32_602 : BitVec 32 := 0#32
  let c1_i32_604 : BitVec 32 := 1#32
  let arg15 : BitVec 32 := Scf.iv c0_i32_602 c1_i32_604 k0_t5
  let v3209 : Index := Scalar.indexCast arg15
  let c608_1897 : Index := 608#32
  ![3, 2, v3209.toNat, 608]
def k0_off2232 (k0_t5 : Fin k0_t5_loop.trips) : Fin 4 → Nat :=
  let c1_i32_1898 : BitVec 32 := 1#32
  let v3213 : Index := Scalar.indexCast c1_i32_1898
  let c2_i32_1899 : BitVec 32 := 2#32
  let v3214 : Index := Scalar.indexCast c2_i32_1899
  let c0_i32_602 : BitVec 32 := 0#32
  let c1_i32_604 : BitVec 32 := 1#32
  let arg15 : BitVec 32 := Scf.iv c0_i32_602 c1_i32_604 k0_t5
  let v3215 : Index := Scalar.indexCast arg15
  let c608_1900 : Index := 608#32
  ![1, 2, v3215.toNat, 608]
def k0_off2233 (k0_t5 : Fin k0_t5_loop.trips) : Fin 4 → Nat :=
  let c3_i32_1901 : BitVec 32 := 3#32
  let v3219 : Index := Scalar.indexCast c3_i32_1901
  let c2_i32_1902 : BitVec 32 := 2#32
  let v3220 : Index := Scalar.indexCast c2_i32_1902
  let c0_i32_602 : BitVec 32 := 0#32
  let c1_i32_604 : BitVec 32 := 1#32
  let arg15 : BitVec 32 := Scf.iv c0_i32_602 c1_i32_604 k0_t5
  let v3221 : Index := Scalar.indexCast arg15
  let c624_1903 : Index := 624#32
  ![3, 2, v3221.toNat, 624]
def k0_off2234 (k0_t5 : Fin k0_t5_loop.trips) : Fin 4 → Nat :=
  let c1_i32_1904 : BitVec 32 := 1#32
  let v3225 : Index := Scalar.indexCast c1_i32_1904
  let c2_i32_1905 : BitVec 32 := 2#32
  let v3226 : Index := Scalar.indexCast c2_i32_1905
  let c0_i32_602 : BitVec 32 := 0#32
  let c1_i32_604 : BitVec 32 := 1#32
  let arg15 : BitVec 32 := Scf.iv c0_i32_602 c1_i32_604 k0_t5
  let v3227 : Index := Scalar.indexCast arg15
  let c624_1906 : Index := 624#32
  ![1, 2, v3227.toNat, 624]
def k0_off2235 (k0_t5 : Fin k0_t5_loop.trips) : Fin 4 → Nat :=
  let c3_i32_1907 : BitVec 32 := 3#32
  let v3231 : Index := Scalar.indexCast c3_i32_1907
  let c2_i32_1908 : BitVec 32 := 2#32
  let v3232 : Index := Scalar.indexCast c2_i32_1908
  let c0_i32_602 : BitVec 32 := 0#32
  let c1_i32_604 : BitVec 32 := 1#32
  let arg15 : BitVec 32 := Scf.iv c0_i32_602 c1_i32_604 k0_t5
  let v3233 : Index := Scalar.indexCast arg15
  let c640_1909 : Index := 640#32
  ![3, 2, v3233.toNat, 640]
def k0_off2236 (k0_t5 : Fin k0_t5_loop.trips) : Fin 4 → Nat :=
  let c1_i32_1910 : BitVec 32 := 1#32
  let v3237 : Index := Scalar.indexCast c1_i32_1910
  let c2_i32_1911 : BitVec 32 := 2#32
  let v3238 : Index := Scalar.indexCast c2_i32_1911
  let c0_i32_602 : BitVec 32 := 0#32
  let c1_i32_604 : BitVec 32 := 1#32
  let arg15 : BitVec 32 := Scf.iv c0_i32_602 c1_i32_604 k0_t5
  let v3239 : Index := Scalar.indexCast arg15
  let c640_1912 : Index := 640#32
  ![1, 2, v3239.toNat, 640]
def k0_off2237 (k0_t5 : Fin k0_t5_loop.trips) : Fin 4 → Nat :=
  let c3_i32_1913 : BitVec 32 := 3#32
  let v3243 : Index := Scalar.indexCast c3_i32_1913
  let c2_i32_1914 : BitVec 32 := 2#32
  let v3244 : Index := Scalar.indexCast c2_i32_1914
  let c0_i32_602 : BitVec 32 := 0#32
  let c1_i32_604 : BitVec 32 := 1#32
  let arg15 : BitVec 32 := Scf.iv c0_i32_602 c1_i32_604 k0_t5
  let v3245 : Index := Scalar.indexCast arg15
  let c656_1915 : Index := 656#32
  ![3, 2, v3245.toNat, 656]
def k0_off2238 (k0_t5 : Fin k0_t5_loop.trips) : Fin 4 → Nat :=
  let c1_i32_1916 : BitVec 32 := 1#32
  let v3249 : Index := Scalar.indexCast c1_i32_1916
  let c2_i32_1917 : BitVec 32 := 2#32
  let v3250 : Index := Scalar.indexCast c2_i32_1917
  let c0_i32_602 : BitVec 32 := 0#32
  let c1_i32_604 : BitVec 32 := 1#32
  let arg15 : BitVec 32 := Scf.iv c0_i32_602 c1_i32_604 k0_t5
  let v3251 : Index := Scalar.indexCast arg15
  let c656_1918 : Index := 656#32
  ![1, 2, v3251.toNat, 656]
def k0_off2239 (k0_t5 : Fin k0_t5_loop.trips) : Fin 4 → Nat :=
  let c3_i32_1919 : BitVec 32 := 3#32
  let v3255 : Index := Scalar.indexCast c3_i32_1919
  let c2_i32_1920 : BitVec 32 := 2#32
  let v3256 : Index := Scalar.indexCast c2_i32_1920
  let c0_i32_602 : BitVec 32 := 0#32
  let c1_i32_604 : BitVec 32 := 1#32
  let arg15 : BitVec 32 := Scf.iv c0_i32_602 c1_i32_604 k0_t5
  let v3257 : Index := Scalar.indexCast arg15
  let c672_1921 : Index := 672#32
  ![3, 2, v3257.toNat, 672]
def k0_off2240 (k0_t5 : Fin k0_t5_loop.trips) : Fin 4 → Nat :=
  let c1_i32_1922 : BitVec 32 := 1#32
  let v3261 : Index := Scalar.indexCast c1_i32_1922
  let c2_i32_1923 : BitVec 32 := 2#32
  let v3262 : Index := Scalar.indexCast c2_i32_1923
  let c0_i32_602 : BitVec 32 := 0#32
  let c1_i32_604 : BitVec 32 := 1#32
  let arg15 : BitVec 32 := Scf.iv c0_i32_602 c1_i32_604 k0_t5
  let v3263 : Index := Scalar.indexCast arg15
  let c672_1924 : Index := 672#32
  ![1, 2, v3263.toNat, 672]
def k0_off2241 (k0_t5 : Fin k0_t5_loop.trips) : Fin 4 → Nat :=
  let c3_i32_1925 : BitVec 32 := 3#32
  let v3267 : Index := Scalar.indexCast c3_i32_1925
  let c2_i32_1926 : BitVec 32 := 2#32
  let v3268 : Index := Scalar.indexCast c2_i32_1926
  let c0_i32_602 : BitVec 32 := 0#32
  let c1_i32_604 : BitVec 32 := 1#32
  let arg15 : BitVec 32 := Scf.iv c0_i32_602 c1_i32_604 k0_t5
  let v3269 : Index := Scalar.indexCast arg15
  let c688_1927 : Index := 688#32
  ![3, 2, v3269.toNat, 688]
def k0_off2242 (k0_t5 : Fin k0_t5_loop.trips) : Fin 4 → Nat :=
  let c1_i32_1928 : BitVec 32 := 1#32
  let v3273 : Index := Scalar.indexCast c1_i32_1928
  let c2_i32_1929 : BitVec 32 := 2#32
  let v3274 : Index := Scalar.indexCast c2_i32_1929
  let c0_i32_602 : BitVec 32 := 0#32
  let c1_i32_604 : BitVec 32 := 1#32
  let arg15 : BitVec 32 := Scf.iv c0_i32_602 c1_i32_604 k0_t5
  let v3275 : Index := Scalar.indexCast arg15
  let c688_1930 : Index := 688#32
  ![1, 2, v3275.toNat, 688]
def k0_off2243 (k0_t5 : Fin k0_t5_loop.trips) : Fin 4 → Nat :=
  let c3_i32_1931 : BitVec 32 := 3#32
  let v3279 : Index := Scalar.indexCast c3_i32_1931
  let c2_i32_1932 : BitVec 32 := 2#32
  let v3280 : Index := Scalar.indexCast c2_i32_1932
  let c0_i32_602 : BitVec 32 := 0#32
  let c1_i32_604 : BitVec 32 := 1#32
  let arg15 : BitVec 32 := Scf.iv c0_i32_602 c1_i32_604 k0_t5
  let v3281 : Index := Scalar.indexCast arg15
  let c704_1933 : Index := 704#32
  ![3, 2, v3281.toNat, 704]
def k0_off2244 (k0_t5 : Fin k0_t5_loop.trips) : Fin 4 → Nat :=
  let c1_i32_1934 : BitVec 32 := 1#32
  let v3285 : Index := Scalar.indexCast c1_i32_1934
  let c2_i32_1935 : BitVec 32 := 2#32
  let v3286 : Index := Scalar.indexCast c2_i32_1935
  let c0_i32_602 : BitVec 32 := 0#32
  let c1_i32_604 : BitVec 32 := 1#32
  let arg15 : BitVec 32 := Scf.iv c0_i32_602 c1_i32_604 k0_t5
  let v3287 : Index := Scalar.indexCast arg15
  let c704_1936 : Index := 704#32
  ![1, 2, v3287.toNat, 704]
def k0_off2245 (k0_t5 : Fin k0_t5_loop.trips) : Fin 4 → Nat :=
  let c3_i32_1937 : BitVec 32 := 3#32
  let v3291 : Index := Scalar.indexCast c3_i32_1937
  let c2_i32_1938 : BitVec 32 := 2#32
  let v3292 : Index := Scalar.indexCast c2_i32_1938
  let c0_i32_602 : BitVec 32 := 0#32
  let c1_i32_604 : BitVec 32 := 1#32
  let arg15 : BitVec 32 := Scf.iv c0_i32_602 c1_i32_604 k0_t5
  let v3293 : Index := Scalar.indexCast arg15
  let c720_1939 : Index := 720#32
  ![3, 2, v3293.toNat, 720]
def k0_off2246 (k0_t5 : Fin k0_t5_loop.trips) : Fin 4 → Nat :=
  let c1_i32_1940 : BitVec 32 := 1#32
  let v3297 : Index := Scalar.indexCast c1_i32_1940
  let c2_i32_1941 : BitVec 32 := 2#32
  let v3298 : Index := Scalar.indexCast c2_i32_1941
  let c0_i32_602 : BitVec 32 := 0#32
  let c1_i32_604 : BitVec 32 := 1#32
  let arg15 : BitVec 32 := Scf.iv c0_i32_602 c1_i32_604 k0_t5
  let v3299 : Index := Scalar.indexCast arg15
  let c720_1942 : Index := 720#32
  ![1, 2, v3299.toNat, 720]
def k0_off2247 (k0_t5 : Fin k0_t5_loop.trips) : Fin 4 → Nat :=
  let c3_i32_1943 : BitVec 32 := 3#32
  let v3303 : Index := Scalar.indexCast c3_i32_1943
  let c2_i32_1944 : BitVec 32 := 2#32
  let v3304 : Index := Scalar.indexCast c2_i32_1944
  let c0_i32_602 : BitVec 32 := 0#32
  let c1_i32_604 : BitVec 32 := 1#32
  let arg15 : BitVec 32 := Scf.iv c0_i32_602 c1_i32_604 k0_t5
  let v3305 : Index := Scalar.indexCast arg15
  let c736_1945 : Index := 736#32
  ![3, 2, v3305.toNat, 736]
def k0_off2248 (k0_t5 : Fin k0_t5_loop.trips) : Fin 4 → Nat :=
  let c1_i32_1946 : BitVec 32 := 1#32
  let v3309 : Index := Scalar.indexCast c1_i32_1946
  let c2_i32_1947 : BitVec 32 := 2#32
  let v3310 : Index := Scalar.indexCast c2_i32_1947
  let c0_i32_602 : BitVec 32 := 0#32
  let c1_i32_604 : BitVec 32 := 1#32
  let arg15 : BitVec 32 := Scf.iv c0_i32_602 c1_i32_604 k0_t5
  let v3311 : Index := Scalar.indexCast arg15
  let c736_1948 : Index := 736#32
  ![1, 2, v3311.toNat, 736]
def k0_off2249 (k0_t5 : Fin k0_t5_loop.trips) : Fin 4 → Nat :=
  let c3_i32_1949 : BitVec 32 := 3#32
  let v3315 : Index := Scalar.indexCast c3_i32_1949
  let c2_i32_1950 : BitVec 32 := 2#32
  let v3316 : Index := Scalar.indexCast c2_i32_1950
  let c0_i32_602 : BitVec 32 := 0#32
  let c1_i32_604 : BitVec 32 := 1#32
  let arg15 : BitVec 32 := Scf.iv c0_i32_602 c1_i32_604 k0_t5
  let v3317 : Index := Scalar.indexCast arg15
  let c752_1951 : Index := 752#32
  ![3, 2, v3317.toNat, 752]
def k0_off2250 (k0_t5 : Fin k0_t5_loop.trips) : Fin 4 → Nat :=
  let c1_i32_1952 : BitVec 32 := 1#32
  let v3321 : Index := Scalar.indexCast c1_i32_1952
  let c2_i32_1953 : BitVec 32 := 2#32
  let v3322 : Index := Scalar.indexCast c2_i32_1953
  let c0_i32_602 : BitVec 32 := 0#32
  let c1_i32_604 : BitVec 32 := 1#32
  let arg15 : BitVec 32 := Scf.iv c0_i32_602 c1_i32_604 k0_t5
  let v3323 : Index := Scalar.indexCast arg15
  let c752_1954 : Index := 752#32
  ![1, 2, v3323.toNat, 752]
def k0_off2251 (k0_t5 : Fin k0_t5_loop.trips) : Fin 4 → Nat :=
  let c3_i32_1955 : BitVec 32 := 3#32
  let v3327 : Index := Scalar.indexCast c3_i32_1955
  let c2_i32_1956 : BitVec 32 := 2#32
  let v3328 : Index := Scalar.indexCast c2_i32_1956
  let c0_i32_602 : BitVec 32 := 0#32
  let c1_i32_604 : BitVec 32 := 1#32
  let arg15 : BitVec 32 := Scf.iv c0_i32_602 c1_i32_604 k0_t5
  let v3329 : Index := Scalar.indexCast arg15
  let c768_1957 : Index := 768#32
  ![3, 2, v3329.toNat, 768]
def k0_off2252 (k0_t5 : Fin k0_t5_loop.trips) : Fin 4 → Nat :=
  let c1_i32_1958 : BitVec 32 := 1#32
  let v3333 : Index := Scalar.indexCast c1_i32_1958
  let c2_i32_1959 : BitVec 32 := 2#32
  let v3334 : Index := Scalar.indexCast c2_i32_1959
  let c0_i32_602 : BitVec 32 := 0#32
  let c1_i32_604 : BitVec 32 := 1#32
  let arg15 : BitVec 32 := Scf.iv c0_i32_602 c1_i32_604 k0_t5
  let v3335 : Index := Scalar.indexCast arg15
  let c768_1960 : Index := 768#32
  ![1, 2, v3335.toNat, 768]
def k0_off2253 (k0_t5 : Fin k0_t5_loop.trips) : Fin 4 → Nat :=
  let c3_i32_1961 : BitVec 32 := 3#32
  let v3339 : Index := Scalar.indexCast c3_i32_1961
  let c2_i32_1962 : BitVec 32 := 2#32
  let v3340 : Index := Scalar.indexCast c2_i32_1962
  let c0_i32_602 : BitVec 32 := 0#32
  let c1_i32_604 : BitVec 32 := 1#32
  let arg15 : BitVec 32 := Scf.iv c0_i32_602 c1_i32_604 k0_t5
  let v3341 : Index := Scalar.indexCast arg15
  let c784_1963 : Index := 784#32
  ![3, 2, v3341.toNat, 784]
def k0_off2254 (k0_t5 : Fin k0_t5_loop.trips) : Fin 4 → Nat :=
  let c1_i32_1964 : BitVec 32 := 1#32
  let v3345 : Index := Scalar.indexCast c1_i32_1964
  let c2_i32_1965 : BitVec 32 := 2#32
  let v3346 : Index := Scalar.indexCast c2_i32_1965
  let c0_i32_602 : BitVec 32 := 0#32
  let c1_i32_604 : BitVec 32 := 1#32
  let arg15 : BitVec 32 := Scf.iv c0_i32_602 c1_i32_604 k0_t5
  let v3347 : Index := Scalar.indexCast arg15
  let c784_1966 : Index := 784#32
  ![1, 2, v3347.toNat, 784]
def k0_off2255 (k0_t5 : Fin k0_t5_loop.trips) : Fin 4 → Nat :=
  let c3_i32_1967 : BitVec 32 := 3#32
  let v3351 : Index := Scalar.indexCast c3_i32_1967
  let c2_i32_1968 : BitVec 32 := 2#32
  let v3352 : Index := Scalar.indexCast c2_i32_1968
  let c0_i32_602 : BitVec 32 := 0#32
  let c1_i32_604 : BitVec 32 := 1#32
  let arg15 : BitVec 32 := Scf.iv c0_i32_602 c1_i32_604 k0_t5
  let v3353 : Index := Scalar.indexCast arg15
  let c800_1969 : Index := 800#32
  ![3, 2, v3353.toNat, 800]
def k0_off2256 (k0_t5 : Fin k0_t5_loop.trips) : Fin 4 → Nat :=
  let c1_i32_1970 : BitVec 32 := 1#32
  let v3357 : Index := Scalar.indexCast c1_i32_1970
  let c2_i32_1971 : BitVec 32 := 2#32
  let v3358 : Index := Scalar.indexCast c2_i32_1971
  let c0_i32_602 : BitVec 32 := 0#32
  let c1_i32_604 : BitVec 32 := 1#32
  let arg15 : BitVec 32 := Scf.iv c0_i32_602 c1_i32_604 k0_t5
  let v3359 : Index := Scalar.indexCast arg15
  let c800_1972 : Index := 800#32
  ![1, 2, v3359.toNat, 800]
def k0_off2257 (k0_t5 : Fin k0_t5_loop.trips) : Fin 4 → Nat :=
  let c3_i32_1973 : BitVec 32 := 3#32
  let v3363 : Index := Scalar.indexCast c3_i32_1973
  let c2_i32_1974 : BitVec 32 := 2#32
  let v3364 : Index := Scalar.indexCast c2_i32_1974
  let c0_i32_602 : BitVec 32 := 0#32
  let c1_i32_604 : BitVec 32 := 1#32
  let arg15 : BitVec 32 := Scf.iv c0_i32_602 c1_i32_604 k0_t5
  let v3365 : Index := Scalar.indexCast arg15
  let c816_1975 : Index := 816#32
  ![3, 2, v3365.toNat, 816]
def k0_off2258 (k0_t5 : Fin k0_t5_loop.trips) : Fin 4 → Nat :=
  let c1_i32_1976 : BitVec 32 := 1#32
  let v3369 : Index := Scalar.indexCast c1_i32_1976
  let c2_i32_1977 : BitVec 32 := 2#32
  let v3370 : Index := Scalar.indexCast c2_i32_1977
  let c0_i32_602 : BitVec 32 := 0#32
  let c1_i32_604 : BitVec 32 := 1#32
  let arg15 : BitVec 32 := Scf.iv c0_i32_602 c1_i32_604 k0_t5
  let v3371 : Index := Scalar.indexCast arg15
  let c816_1978 : Index := 816#32
  ![1, 2, v3371.toNat, 816]
def k0_off2259 (k0_t5 : Fin k0_t5_loop.trips) : Fin 4 → Nat :=
  let c3_i32_1979 : BitVec 32 := 3#32
  let v3375 : Index := Scalar.indexCast c3_i32_1979
  let c2_i32_1980 : BitVec 32 := 2#32
  let v3376 : Index := Scalar.indexCast c2_i32_1980
  let c0_i32_602 : BitVec 32 := 0#32
  let c1_i32_604 : BitVec 32 := 1#32
  let arg15 : BitVec 32 := Scf.iv c0_i32_602 c1_i32_604 k0_t5
  let v3377 : Index := Scalar.indexCast arg15
  let c832_1981 : Index := 832#32
  ![3, 2, v3377.toNat, 832]
def k0_off2260 (k0_t5 : Fin k0_t5_loop.trips) : Fin 4 → Nat :=
  let c1_i32_1982 : BitVec 32 := 1#32
  let v3381 : Index := Scalar.indexCast c1_i32_1982
  let c2_i32_1983 : BitVec 32 := 2#32
  let v3382 : Index := Scalar.indexCast c2_i32_1983
  let c0_i32_602 : BitVec 32 := 0#32
  let c1_i32_604 : BitVec 32 := 1#32
  let arg15 : BitVec 32 := Scf.iv c0_i32_602 c1_i32_604 k0_t5
  let v3383 : Index := Scalar.indexCast arg15
  let c832_1984 : Index := 832#32
  ![1, 2, v3383.toNat, 832]
def k0_off2261 (k0_t5 : Fin k0_t5_loop.trips) : Fin 4 → Nat :=
  let c3_i32_1985 : BitVec 32 := 3#32
  let v3387 : Index := Scalar.indexCast c3_i32_1985
  let c2_i32_1986 : BitVec 32 := 2#32
  let v3388 : Index := Scalar.indexCast c2_i32_1986
  let c0_i32_602 : BitVec 32 := 0#32
  let c1_i32_604 : BitVec 32 := 1#32
  let arg15 : BitVec 32 := Scf.iv c0_i32_602 c1_i32_604 k0_t5
  let v3389 : Index := Scalar.indexCast arg15
  let c848_1987 : Index := 848#32
  ![3, 2, v3389.toNat, 848]
def k0_off2262 (k0_t5 : Fin k0_t5_loop.trips) : Fin 4 → Nat :=
  let c1_i32_1988 : BitVec 32 := 1#32
  let v3393 : Index := Scalar.indexCast c1_i32_1988
  let c2_i32_1989 : BitVec 32 := 2#32
  let v3394 : Index := Scalar.indexCast c2_i32_1989
  let c0_i32_602 : BitVec 32 := 0#32
  let c1_i32_604 : BitVec 32 := 1#32
  let arg15 : BitVec 32 := Scf.iv c0_i32_602 c1_i32_604 k0_t5
  let v3395 : Index := Scalar.indexCast arg15
  let c848_1990 : Index := 848#32
  ![1, 2, v3395.toNat, 848]
def k0_off2263 (k0_t5 : Fin k0_t5_loop.trips) : Fin 4 → Nat :=
  let c3_i32_1991 : BitVec 32 := 3#32
  let v3399 : Index := Scalar.indexCast c3_i32_1991
  let c2_i32_1992 : BitVec 32 := 2#32
  let v3400 : Index := Scalar.indexCast c2_i32_1992
  let c0_i32_602 : BitVec 32 := 0#32
  let c1_i32_604 : BitVec 32 := 1#32
  let arg15 : BitVec 32 := Scf.iv c0_i32_602 c1_i32_604 k0_t5
  let v3401 : Index := Scalar.indexCast arg15
  let c864_1993 : Index := 864#32
  ![3, 2, v3401.toNat, 864]
def k0_off2264 (k0_t5 : Fin k0_t5_loop.trips) : Fin 4 → Nat :=
  let c1_i32_1994 : BitVec 32 := 1#32
  let v3405 : Index := Scalar.indexCast c1_i32_1994
  let c2_i32_1995 : BitVec 32 := 2#32
  let v3406 : Index := Scalar.indexCast c2_i32_1995
  let c0_i32_602 : BitVec 32 := 0#32
  let c1_i32_604 : BitVec 32 := 1#32
  let arg15 : BitVec 32 := Scf.iv c0_i32_602 c1_i32_604 k0_t5
  let v3407 : Index := Scalar.indexCast arg15
  let c864_1996 : Index := 864#32
  ![1, 2, v3407.toNat, 864]
def k0_off2265 (k0_t5 : Fin k0_t5_loop.trips) : Fin 4 → Nat :=
  let c3_i32_1997 : BitVec 32 := 3#32
  let v3411 : Index := Scalar.indexCast c3_i32_1997
  let c2_i32_1998 : BitVec 32 := 2#32
  let v3412 : Index := Scalar.indexCast c2_i32_1998
  let c0_i32_602 : BitVec 32 := 0#32
  let c1_i32_604 : BitVec 32 := 1#32
  let arg15 : BitVec 32 := Scf.iv c0_i32_602 c1_i32_604 k0_t5
  let v3413 : Index := Scalar.indexCast arg15
  let c880_1999 : Index := 880#32
  ![3, 2, v3413.toNat, 880]
def k0_off2266 (k0_t5 : Fin k0_t5_loop.trips) : Fin 4 → Nat :=
  let c1_i32_2000 : BitVec 32 := 1#32
  let v3417 : Index := Scalar.indexCast c1_i32_2000
  let c2_i32_2001 : BitVec 32 := 2#32
  let v3418 : Index := Scalar.indexCast c2_i32_2001
  let c0_i32_602 : BitVec 32 := 0#32
  let c1_i32_604 : BitVec 32 := 1#32
  let arg15 : BitVec 32 := Scf.iv c0_i32_602 c1_i32_604 k0_t5
  let v3419 : Index := Scalar.indexCast arg15
  let c880_2002 : Index := 880#32
  ![1, 2, v3419.toNat, 880]
def k0_off2267 (k0_t5 : Fin k0_t5_loop.trips) : Fin 4 → Nat :=
  let c3_i32_2003 : BitVec 32 := 3#32
  let v3423 : Index := Scalar.indexCast c3_i32_2003
  let c2_i32_2004 : BitVec 32 := 2#32
  let v3424 : Index := Scalar.indexCast c2_i32_2004
  let c0_i32_602 : BitVec 32 := 0#32
  let c1_i32_604 : BitVec 32 := 1#32
  let arg15 : BitVec 32 := Scf.iv c0_i32_602 c1_i32_604 k0_t5
  let v3425 : Index := Scalar.indexCast arg15
  let c896_2005 : Index := 896#32
  ![3, 2, v3425.toNat, 896]
def k0_off2268 (k0_t5 : Fin k0_t5_loop.trips) : Fin 4 → Nat :=
  let c1_i32_2006 : BitVec 32 := 1#32
  let v3429 : Index := Scalar.indexCast c1_i32_2006
  let c2_i32_2007 : BitVec 32 := 2#32
  let v3430 : Index := Scalar.indexCast c2_i32_2007
  let c0_i32_602 : BitVec 32 := 0#32
  let c1_i32_604 : BitVec 32 := 1#32
  let arg15 : BitVec 32 := Scf.iv c0_i32_602 c1_i32_604 k0_t5
  let v3431 : Index := Scalar.indexCast arg15
  let c896_2008 : Index := 896#32
  ![1, 2, v3431.toNat, 896]
def k0_off2269 (k0_t5 : Fin k0_t5_loop.trips) : Fin 4 → Nat :=
  let c3_i32_2009 : BitVec 32 := 3#32
  let v3435 : Index := Scalar.indexCast c3_i32_2009
  let c2_i32_2010 : BitVec 32 := 2#32
  let v3436 : Index := Scalar.indexCast c2_i32_2010
  let c0_i32_602 : BitVec 32 := 0#32
  let c1_i32_604 : BitVec 32 := 1#32
  let arg15 : BitVec 32 := Scf.iv c0_i32_602 c1_i32_604 k0_t5
  let v3437 : Index := Scalar.indexCast arg15
  let c912_2011 : Index := 912#32
  ![3, 2, v3437.toNat, 912]
def k0_off2270 (k0_t5 : Fin k0_t5_loop.trips) : Fin 4 → Nat :=
  let c1_i32_2012 : BitVec 32 := 1#32
  let v3441 : Index := Scalar.indexCast c1_i32_2012
  let c2_i32_2013 : BitVec 32 := 2#32
  let v3442 : Index := Scalar.indexCast c2_i32_2013
  let c0_i32_602 : BitVec 32 := 0#32
  let c1_i32_604 : BitVec 32 := 1#32
  let arg15 : BitVec 32 := Scf.iv c0_i32_602 c1_i32_604 k0_t5
  let v3443 : Index := Scalar.indexCast arg15
  let c912_2014 : Index := 912#32
  ![1, 2, v3443.toNat, 912]
def k0_off2271 (k0_t5 : Fin k0_t5_loop.trips) : Fin 4 → Nat :=
  let c3_i32_2015 : BitVec 32 := 3#32
  let v3447 : Index := Scalar.indexCast c3_i32_2015
  let c2_i32_2016 : BitVec 32 := 2#32
  let v3448 : Index := Scalar.indexCast c2_i32_2016
  let c0_i32_602 : BitVec 32 := 0#32
  let c1_i32_604 : BitVec 32 := 1#32
  let arg15 : BitVec 32 := Scf.iv c0_i32_602 c1_i32_604 k0_t5
  let v3449 : Index := Scalar.indexCast arg15
  let c928_2017 : Index := 928#32
  ![3, 2, v3449.toNat, 928]
def k0_off2272 (k0_t5 : Fin k0_t5_loop.trips) : Fin 4 → Nat :=
  let c1_i32_2018 : BitVec 32 := 1#32
  let v3453 : Index := Scalar.indexCast c1_i32_2018
  let c2_i32_2019 : BitVec 32 := 2#32
  let v3454 : Index := Scalar.indexCast c2_i32_2019
  let c0_i32_602 : BitVec 32 := 0#32
  let c1_i32_604 : BitVec 32 := 1#32
  let arg15 : BitVec 32 := Scf.iv c0_i32_602 c1_i32_604 k0_t5
  let v3455 : Index := Scalar.indexCast arg15
  let c928_2020 : Index := 928#32
  ![1, 2, v3455.toNat, 928]
def k0_off2273 (k0_t5 : Fin k0_t5_loop.trips) : Fin 4 → Nat :=
  let c3_i32_2021 : BitVec 32 := 3#32
  let v3459 : Index := Scalar.indexCast c3_i32_2021
  let c2_i32_2022 : BitVec 32 := 2#32
  let v3460 : Index := Scalar.indexCast c2_i32_2022
  let c0_i32_602 : BitVec 32 := 0#32
  let c1_i32_604 : BitVec 32 := 1#32
  let arg15 : BitVec 32 := Scf.iv c0_i32_602 c1_i32_604 k0_t5
  let v3461 : Index := Scalar.indexCast arg15
  let c944_2023 : Index := 944#32
  ![3, 2, v3461.toNat, 944]
def k0_off2274 (k0_t5 : Fin k0_t5_loop.trips) : Fin 4 → Nat :=
  let c1_i32_2024 : BitVec 32 := 1#32
  let v3465 : Index := Scalar.indexCast c1_i32_2024
  let c2_i32_2025 : BitVec 32 := 2#32
  let v3466 : Index := Scalar.indexCast c2_i32_2025
  let c0_i32_602 : BitVec 32 := 0#32
  let c1_i32_604 : BitVec 32 := 1#32
  let arg15 : BitVec 32 := Scf.iv c0_i32_602 c1_i32_604 k0_t5
  let v3467 : Index := Scalar.indexCast arg15
  let c944_2026 : Index := 944#32
  ![1, 2, v3467.toNat, 944]
def k0_off2275 (k0_t5 : Fin k0_t5_loop.trips) : Fin 4 → Nat :=
  let c3_i32_2027 : BitVec 32 := 3#32
  let v3471 : Index := Scalar.indexCast c3_i32_2027
  let c2_i32_2028 : BitVec 32 := 2#32
  let v3472 : Index := Scalar.indexCast c2_i32_2028
  let c0_i32_602 : BitVec 32 := 0#32
  let c1_i32_604 : BitVec 32 := 1#32
  let arg15 : BitVec 32 := Scf.iv c0_i32_602 c1_i32_604 k0_t5
  let v3473 : Index := Scalar.indexCast arg15
  let c960_2029 : Index := 960#32
  ![3, 2, v3473.toNat, 960]
def k0_off2276 (k0_t5 : Fin k0_t5_loop.trips) : Fin 4 → Nat :=
  let c1_i32_2030 : BitVec 32 := 1#32
  let v3477 : Index := Scalar.indexCast c1_i32_2030
  let c2_i32_2031 : BitVec 32 := 2#32
  let v3478 : Index := Scalar.indexCast c2_i32_2031
  let c0_i32_602 : BitVec 32 := 0#32
  let c1_i32_604 : BitVec 32 := 1#32
  let arg15 : BitVec 32 := Scf.iv c0_i32_602 c1_i32_604 k0_t5
  let v3479 : Index := Scalar.indexCast arg15
  let c960_2032 : Index := 960#32
  ![1, 2, v3479.toNat, 960]
def k0_off2277 (k0_t5 : Fin k0_t5_loop.trips) : Fin 4 → Nat :=
  let c3_i32_2033 : BitVec 32 := 3#32
  let v3483 : Index := Scalar.indexCast c3_i32_2033
  let c2_i32_2034 : BitVec 32 := 2#32
  let v3484 : Index := Scalar.indexCast c2_i32_2034
  let c0_i32_602 : BitVec 32 := 0#32
  let c1_i32_604 : BitVec 32 := 1#32
  let arg15 : BitVec 32 := Scf.iv c0_i32_602 c1_i32_604 k0_t5
  let v3485 : Index := Scalar.indexCast arg15
  let c976_2035 : Index := 976#32
  ![3, 2, v3485.toNat, 976]
def k0_off2278 (k0_t5 : Fin k0_t5_loop.trips) : Fin 4 → Nat :=
  let c1_i32_2036 : BitVec 32 := 1#32
  let v3489 : Index := Scalar.indexCast c1_i32_2036
  let c2_i32_2037 : BitVec 32 := 2#32
  let v3490 : Index := Scalar.indexCast c2_i32_2037
  let c0_i32_602 : BitVec 32 := 0#32
  let c1_i32_604 : BitVec 32 := 1#32
  let arg15 : BitVec 32 := Scf.iv c0_i32_602 c1_i32_604 k0_t5
  let v3491 : Index := Scalar.indexCast arg15
  let c976_2038 : Index := 976#32
  ![1, 2, v3491.toNat, 976]
def k0_off2279 (k0_t5 : Fin k0_t5_loop.trips) : Fin 4 → Nat :=
  let c3_i32_2039 : BitVec 32 := 3#32
  let v3495 : Index := Scalar.indexCast c3_i32_2039
  let c2_i32_2040 : BitVec 32 := 2#32
  let v3496 : Index := Scalar.indexCast c2_i32_2040
  let c0_i32_602 : BitVec 32 := 0#32
  let c1_i32_604 : BitVec 32 := 1#32
  let arg15 : BitVec 32 := Scf.iv c0_i32_602 c1_i32_604 k0_t5
  let v3497 : Index := Scalar.indexCast arg15
  let c992_2041 : Index := 992#32
  ![3, 2, v3497.toNat, 992]
def k0_off2280 (k0_t5 : Fin k0_t5_loop.trips) : Fin 4 → Nat :=
  let c1_i32_2042 : BitVec 32 := 1#32
  let v3501 : Index := Scalar.indexCast c1_i32_2042
  let c2_i32_2043 : BitVec 32 := 2#32
  let v3502 : Index := Scalar.indexCast c2_i32_2043
  let c0_i32_602 : BitVec 32 := 0#32
  let c1_i32_604 : BitVec 32 := 1#32
  let arg15 : BitVec 32 := Scf.iv c0_i32_602 c1_i32_604 k0_t5
  let v3503 : Index := Scalar.indexCast arg15
  let c992_2044 : Index := 992#32
  ![1, 2, v3503.toNat, 992]
def k0_off2281 (k0_t5 : Fin k0_t5_loop.trips) : Fin 4 → Nat :=
  let c3_i32_2045 : BitVec 32 := 3#32
  let v3507 : Index := Scalar.indexCast c3_i32_2045
  let c2_i32_2046 : BitVec 32 := 2#32
  let v3508 : Index := Scalar.indexCast c2_i32_2046
  let c0_i32_602 : BitVec 32 := 0#32
  let c1_i32_604 : BitVec 32 := 1#32
  let arg15 : BitVec 32 := Scf.iv c0_i32_602 c1_i32_604 k0_t5
  let v3509 : Index := Scalar.indexCast arg15
  let c1008_2047 : Index := 1008#32
  ![3, 2, v3509.toNat, 1008]
def k0_off2282 (k0_t5 : Fin k0_t5_loop.trips) : Fin 4 → Nat :=
  let c1_i32_2048 : BitVec 32 := 1#32
  let v3513 : Index := Scalar.indexCast c1_i32_2048
  let c2_i32_2049 : BitVec 32 := 2#32
  let v3514 : Index := Scalar.indexCast c2_i32_2049
  let c0_i32_602 : BitVec 32 := 0#32
  let c1_i32_604 : BitVec 32 := 1#32
  let arg15 : BitVec 32 := Scf.iv c0_i32_602 c1_i32_604 k0_t5
  let v3515 : Index := Scalar.indexCast arg15
  let c1008_2050 : Index := 1008#32
  ![1, 2, v3515.toNat, 1008]
def k0_off2283 (k0_t5 : Fin k0_t5_loop.trips) : Fin 4 → Nat :=
  let c3_i32_2051 : BitVec 32 := 3#32
  let v3519 : Index := Scalar.indexCast c3_i32_2051
  let c3_i32_2052 : BitVec 32 := 3#32
  let v3520 : Index := Scalar.indexCast c3_i32_2052
  let c0_i32_602 : BitVec 32 := 0#32
  let c1_i32_604 : BitVec 32 := 1#32
  let arg15 : BitVec 32 := Scf.iv c0_i32_602 c1_i32_604 k0_t5
  let v3521 : Index := Scalar.indexCast arg15
  let c512_2053 : Index := 512#32
  ![3, 3, v3521.toNat, 512]
def k0_off2284 (k0_t5 : Fin k0_t5_loop.trips) : Fin 4 → Nat :=
  let c1_i32_2054 : BitVec 32 := 1#32
  let v3525 : Index := Scalar.indexCast c1_i32_2054
  let c3_i32_2055 : BitVec 32 := 3#32
  let v3526 : Index := Scalar.indexCast c3_i32_2055
  let c0_i32_602 : BitVec 32 := 0#32
  let c1_i32_604 : BitVec 32 := 1#32
  let arg15 : BitVec 32 := Scf.iv c0_i32_602 c1_i32_604 k0_t5
  let v3527 : Index := Scalar.indexCast arg15
  let c512_2056 : Index := 512#32
  ![1, 3, v3527.toNat, 512]
def k0_off2285 (k0_t5 : Fin k0_t5_loop.trips) : Fin 4 → Nat :=
  let c3_i32_2057 : BitVec 32 := 3#32
  let v3531 : Index := Scalar.indexCast c3_i32_2057
  let c3_i32_2058 : BitVec 32 := 3#32
  let v3532 : Index := Scalar.indexCast c3_i32_2058
  let c0_i32_602 : BitVec 32 := 0#32
  let c1_i32_604 : BitVec 32 := 1#32
  let arg15 : BitVec 32 := Scf.iv c0_i32_602 c1_i32_604 k0_t5
  let v3533 : Index := Scalar.indexCast arg15
  let c528_2059 : Index := 528#32
  ![3, 3, v3533.toNat, 528]
def k0_off2286 (k0_t5 : Fin k0_t5_loop.trips) : Fin 4 → Nat :=
  let c1_i32_2060 : BitVec 32 := 1#32
  let v3537 : Index := Scalar.indexCast c1_i32_2060
  let c3_i32_2061 : BitVec 32 := 3#32
  let v3538 : Index := Scalar.indexCast c3_i32_2061
  let c0_i32_602 : BitVec 32 := 0#32
  let c1_i32_604 : BitVec 32 := 1#32
  let arg15 : BitVec 32 := Scf.iv c0_i32_602 c1_i32_604 k0_t5
  let v3539 : Index := Scalar.indexCast arg15
  let c528_2062 : Index := 528#32
  ![1, 3, v3539.toNat, 528]
def k0_off2287 (k0_t5 : Fin k0_t5_loop.trips) : Fin 4 → Nat :=
  let c3_i32_2063 : BitVec 32 := 3#32
  let v3543 : Index := Scalar.indexCast c3_i32_2063
  let c3_i32_2064 : BitVec 32 := 3#32
  let v3544 : Index := Scalar.indexCast c3_i32_2064
  let c0_i32_602 : BitVec 32 := 0#32
  let c1_i32_604 : BitVec 32 := 1#32
  let arg15 : BitVec 32 := Scf.iv c0_i32_602 c1_i32_604 k0_t5
  let v3545 : Index := Scalar.indexCast arg15
  let c544_2065 : Index := 544#32
  ![3, 3, v3545.toNat, 544]
def k0_off2288 (k0_t5 : Fin k0_t5_loop.trips) : Fin 4 → Nat :=
  let c1_i32_2066 : BitVec 32 := 1#32
  let v3549 : Index := Scalar.indexCast c1_i32_2066
  let c3_i32_2067 : BitVec 32 := 3#32
  let v3550 : Index := Scalar.indexCast c3_i32_2067
  let c0_i32_602 : BitVec 32 := 0#32
  let c1_i32_604 : BitVec 32 := 1#32
  let arg15 : BitVec 32 := Scf.iv c0_i32_602 c1_i32_604 k0_t5
  let v3551 : Index := Scalar.indexCast arg15
  let c544_2068 : Index := 544#32
  ![1, 3, v3551.toNat, 544]
def k0_off2289 (k0_t5 : Fin k0_t5_loop.trips) : Fin 4 → Nat :=
  let c3_i32_2069 : BitVec 32 := 3#32
  let v3555 : Index := Scalar.indexCast c3_i32_2069
  let c3_i32_2070 : BitVec 32 := 3#32
  let v3556 : Index := Scalar.indexCast c3_i32_2070
  let c0_i32_602 : BitVec 32 := 0#32
  let c1_i32_604 : BitVec 32 := 1#32
  let arg15 : BitVec 32 := Scf.iv c0_i32_602 c1_i32_604 k0_t5
  let v3557 : Index := Scalar.indexCast arg15
  let c560_2071 : Index := 560#32
  ![3, 3, v3557.toNat, 560]
def k0_off2290 (k0_t5 : Fin k0_t5_loop.trips) : Fin 4 → Nat :=
  let c1_i32_2072 : BitVec 32 := 1#32
  let v3561 : Index := Scalar.indexCast c1_i32_2072
  let c3_i32_2073 : BitVec 32 := 3#32
  let v3562 : Index := Scalar.indexCast c3_i32_2073
  let c0_i32_602 : BitVec 32 := 0#32
  let c1_i32_604 : BitVec 32 := 1#32
  let arg15 : BitVec 32 := Scf.iv c0_i32_602 c1_i32_604 k0_t5
  let v3563 : Index := Scalar.indexCast arg15
  let c560_2074 : Index := 560#32
  ![1, 3, v3563.toNat, 560]
def k0_off2291 (k0_t5 : Fin k0_t5_loop.trips) : Fin 4 → Nat :=
  let c3_i32_2075 : BitVec 32 := 3#32
  let v3567 : Index := Scalar.indexCast c3_i32_2075
  let c3_i32_2076 : BitVec 32 := 3#32
  let v3568 : Index := Scalar.indexCast c3_i32_2076
  let c0_i32_602 : BitVec 32 := 0#32
  let c1_i32_604 : BitVec 32 := 1#32
  let arg15 : BitVec 32 := Scf.iv c0_i32_602 c1_i32_604 k0_t5
  let v3569 : Index := Scalar.indexCast arg15
  let c576_2077 : Index := 576#32
  ![3, 3, v3569.toNat, 576]
def k0_off2292 (k0_t5 : Fin k0_t5_loop.trips) : Fin 4 → Nat :=
  let c1_i32_2078 : BitVec 32 := 1#32
  let v3573 : Index := Scalar.indexCast c1_i32_2078
  let c3_i32_2079 : BitVec 32 := 3#32
  let v3574 : Index := Scalar.indexCast c3_i32_2079
  let c0_i32_602 : BitVec 32 := 0#32
  let c1_i32_604 : BitVec 32 := 1#32
  let arg15 : BitVec 32 := Scf.iv c0_i32_602 c1_i32_604 k0_t5
  let v3575 : Index := Scalar.indexCast arg15
  let c576_2080 : Index := 576#32
  ![1, 3, v3575.toNat, 576]
def k0_off2293 (k0_t5 : Fin k0_t5_loop.trips) : Fin 4 → Nat :=
  let c3_i32_2081 : BitVec 32 := 3#32
  let v3579 : Index := Scalar.indexCast c3_i32_2081
  let c3_i32_2082 : BitVec 32 := 3#32
  let v3580 : Index := Scalar.indexCast c3_i32_2082
  let c0_i32_602 : BitVec 32 := 0#32
  let c1_i32_604 : BitVec 32 := 1#32
  let arg15 : BitVec 32 := Scf.iv c0_i32_602 c1_i32_604 k0_t5
  let v3581 : Index := Scalar.indexCast arg15
  let c592_2083 : Index := 592#32
  ![3, 3, v3581.toNat, 592]
def k0_off2294 (k0_t5 : Fin k0_t5_loop.trips) : Fin 4 → Nat :=
  let c1_i32_2084 : BitVec 32 := 1#32
  let v3585 : Index := Scalar.indexCast c1_i32_2084
  let c3_i32_2085 : BitVec 32 := 3#32
  let v3586 : Index := Scalar.indexCast c3_i32_2085
  let c0_i32_602 : BitVec 32 := 0#32
  let c1_i32_604 : BitVec 32 := 1#32
  let arg15 : BitVec 32 := Scf.iv c0_i32_602 c1_i32_604 k0_t5
  let v3587 : Index := Scalar.indexCast arg15
  let c592_2086 : Index := 592#32
  ![1, 3, v3587.toNat, 592]
def k0_off2295 (k0_t5 : Fin k0_t5_loop.trips) : Fin 4 → Nat :=
  let c3_i32_2087 : BitVec 32 := 3#32
  let v3591 : Index := Scalar.indexCast c3_i32_2087
  let c3_i32_2088 : BitVec 32 := 3#32
  let v3592 : Index := Scalar.indexCast c3_i32_2088
  let c0_i32_602 : BitVec 32 := 0#32
  let c1_i32_604 : BitVec 32 := 1#32
  let arg15 : BitVec 32 := Scf.iv c0_i32_602 c1_i32_604 k0_t5
  let v3593 : Index := Scalar.indexCast arg15
  let c608_2089 : Index := 608#32
  ![3, 3, v3593.toNat, 608]
def k0_off2296 (k0_t5 : Fin k0_t5_loop.trips) : Fin 4 → Nat :=
  let c1_i32_2090 : BitVec 32 := 1#32
  let v3597 : Index := Scalar.indexCast c1_i32_2090
  let c3_i32_2091 : BitVec 32 := 3#32
  let v3598 : Index := Scalar.indexCast c3_i32_2091
  let c0_i32_602 : BitVec 32 := 0#32
  let c1_i32_604 : BitVec 32 := 1#32
  let arg15 : BitVec 32 := Scf.iv c0_i32_602 c1_i32_604 k0_t5
  let v3599 : Index := Scalar.indexCast arg15
  let c608_2092 : Index := 608#32
  ![1, 3, v3599.toNat, 608]
def k0_off2297 (k0_t5 : Fin k0_t5_loop.trips) : Fin 4 → Nat :=
  let c3_i32_2093 : BitVec 32 := 3#32
  let v3603 : Index := Scalar.indexCast c3_i32_2093
  let c3_i32_2094 : BitVec 32 := 3#32
  let v3604 : Index := Scalar.indexCast c3_i32_2094
  let c0_i32_602 : BitVec 32 := 0#32
  let c1_i32_604 : BitVec 32 := 1#32
  let arg15 : BitVec 32 := Scf.iv c0_i32_602 c1_i32_604 k0_t5
  let v3605 : Index := Scalar.indexCast arg15
  let c624_2095 : Index := 624#32
  ![3, 3, v3605.toNat, 624]
def k0_off2298 (k0_t5 : Fin k0_t5_loop.trips) : Fin 4 → Nat :=
  let c1_i32_2096 : BitVec 32 := 1#32
  let v3609 : Index := Scalar.indexCast c1_i32_2096
  let c3_i32_2097 : BitVec 32 := 3#32
  let v3610 : Index := Scalar.indexCast c3_i32_2097
  let c0_i32_602 : BitVec 32 := 0#32
  let c1_i32_604 : BitVec 32 := 1#32
  let arg15 : BitVec 32 := Scf.iv c0_i32_602 c1_i32_604 k0_t5
  let v3611 : Index := Scalar.indexCast arg15
  let c624_2098 : Index := 624#32
  ![1, 3, v3611.toNat, 624]
def k0_off2299 (k0_t5 : Fin k0_t5_loop.trips) : Fin 4 → Nat :=
  let c3_i32_2099 : BitVec 32 := 3#32
  let v3615 : Index := Scalar.indexCast c3_i32_2099
  let c3_i32_2100 : BitVec 32 := 3#32
  let v3616 : Index := Scalar.indexCast c3_i32_2100
  let c0_i32_602 : BitVec 32 := 0#32
  let c1_i32_604 : BitVec 32 := 1#32
  let arg15 : BitVec 32 := Scf.iv c0_i32_602 c1_i32_604 k0_t5
  let v3617 : Index := Scalar.indexCast arg15
  let c640_2101 : Index := 640#32
  ![3, 3, v3617.toNat, 640]
def k0_off2300 (k0_t5 : Fin k0_t5_loop.trips) : Fin 4 → Nat :=
  let c1_i32_2102 : BitVec 32 := 1#32
  let v3621 : Index := Scalar.indexCast c1_i32_2102
  let c3_i32_2103 : BitVec 32 := 3#32
  let v3622 : Index := Scalar.indexCast c3_i32_2103
  let c0_i32_602 : BitVec 32 := 0#32
  let c1_i32_604 : BitVec 32 := 1#32
  let arg15 : BitVec 32 := Scf.iv c0_i32_602 c1_i32_604 k0_t5
  let v3623 : Index := Scalar.indexCast arg15
  let c640_2104 : Index := 640#32
  ![1, 3, v3623.toNat, 640]
def k0_off2301 (k0_t5 : Fin k0_t5_loop.trips) : Fin 4 → Nat :=
  let c3_i32_2105 : BitVec 32 := 3#32
  let v3627 : Index := Scalar.indexCast c3_i32_2105
  let c3_i32_2106 : BitVec 32 := 3#32
  let v3628 : Index := Scalar.indexCast c3_i32_2106
  let c0_i32_602 : BitVec 32 := 0#32
  let c1_i32_604 : BitVec 32 := 1#32
  let arg15 : BitVec 32 := Scf.iv c0_i32_602 c1_i32_604 k0_t5
  let v3629 : Index := Scalar.indexCast arg15
  let c656_2107 : Index := 656#32
  ![3, 3, v3629.toNat, 656]
def k0_off2302 (k0_t5 : Fin k0_t5_loop.trips) : Fin 4 → Nat :=
  let c1_i32_2108 : BitVec 32 := 1#32
  let v3633 : Index := Scalar.indexCast c1_i32_2108
  let c3_i32_2109 : BitVec 32 := 3#32
  let v3634 : Index := Scalar.indexCast c3_i32_2109
  let c0_i32_602 : BitVec 32 := 0#32
  let c1_i32_604 : BitVec 32 := 1#32
  let arg15 : BitVec 32 := Scf.iv c0_i32_602 c1_i32_604 k0_t5
  let v3635 : Index := Scalar.indexCast arg15
  let c656_2110 : Index := 656#32
  ![1, 3, v3635.toNat, 656]
def k0_off2303 (k0_t5 : Fin k0_t5_loop.trips) : Fin 4 → Nat :=
  let c3_i32_2111 : BitVec 32 := 3#32
  let v3639 : Index := Scalar.indexCast c3_i32_2111
  let c3_i32_2112 : BitVec 32 := 3#32
  let v3640 : Index := Scalar.indexCast c3_i32_2112
  let c0_i32_602 : BitVec 32 := 0#32
  let c1_i32_604 : BitVec 32 := 1#32
  let arg15 : BitVec 32 := Scf.iv c0_i32_602 c1_i32_604 k0_t5
  let v3641 : Index := Scalar.indexCast arg15
  let c672_2113 : Index := 672#32
  ![3, 3, v3641.toNat, 672]
def k0_off2304 (k0_t5 : Fin k0_t5_loop.trips) : Fin 4 → Nat :=
  let c1_i32_2114 : BitVec 32 := 1#32
  let v3645 : Index := Scalar.indexCast c1_i32_2114
  let c3_i32_2115 : BitVec 32 := 3#32
  let v3646 : Index := Scalar.indexCast c3_i32_2115
  let c0_i32_602 : BitVec 32 := 0#32
  let c1_i32_604 : BitVec 32 := 1#32
  let arg15 : BitVec 32 := Scf.iv c0_i32_602 c1_i32_604 k0_t5
  let v3647 : Index := Scalar.indexCast arg15
  let c672_2116 : Index := 672#32
  ![1, 3, v3647.toNat, 672]
def k0_off2305 (k0_t5 : Fin k0_t5_loop.trips) : Fin 4 → Nat :=
  let c3_i32_2117 : BitVec 32 := 3#32
  let v3651 : Index := Scalar.indexCast c3_i32_2117
  let c3_i32_2118 : BitVec 32 := 3#32
  let v3652 : Index := Scalar.indexCast c3_i32_2118
  let c0_i32_602 : BitVec 32 := 0#32
  let c1_i32_604 : BitVec 32 := 1#32
  let arg15 : BitVec 32 := Scf.iv c0_i32_602 c1_i32_604 k0_t5
  let v3653 : Index := Scalar.indexCast arg15
  let c688_2119 : Index := 688#32
  ![3, 3, v3653.toNat, 688]
def k0_off2306 (k0_t5 : Fin k0_t5_loop.trips) : Fin 4 → Nat :=
  let c1_i32_2120 : BitVec 32 := 1#32
  let v3657 : Index := Scalar.indexCast c1_i32_2120
  let c3_i32_2121 : BitVec 32 := 3#32
  let v3658 : Index := Scalar.indexCast c3_i32_2121
  let c0_i32_602 : BitVec 32 := 0#32
  let c1_i32_604 : BitVec 32 := 1#32
  let arg15 : BitVec 32 := Scf.iv c0_i32_602 c1_i32_604 k0_t5
  let v3659 : Index := Scalar.indexCast arg15
  let c688_2122 : Index := 688#32
  ![1, 3, v3659.toNat, 688]
def k0_off2307 (k0_t5 : Fin k0_t5_loop.trips) : Fin 4 → Nat :=
  let c3_i32_2123 : BitVec 32 := 3#32
  let v3663 : Index := Scalar.indexCast c3_i32_2123
  let c3_i32_2124 : BitVec 32 := 3#32
  let v3664 : Index := Scalar.indexCast c3_i32_2124
  let c0_i32_602 : BitVec 32 := 0#32
  let c1_i32_604 : BitVec 32 := 1#32
  let arg15 : BitVec 32 := Scf.iv c0_i32_602 c1_i32_604 k0_t5
  let v3665 : Index := Scalar.indexCast arg15
  let c704_2125 : Index := 704#32
  ![3, 3, v3665.toNat, 704]
def k0_off2308 (k0_t5 : Fin k0_t5_loop.trips) : Fin 4 → Nat :=
  let c1_i32_2126 : BitVec 32 := 1#32
  let v3669 : Index := Scalar.indexCast c1_i32_2126
  let c3_i32_2127 : BitVec 32 := 3#32
  let v3670 : Index := Scalar.indexCast c3_i32_2127
  let c0_i32_602 : BitVec 32 := 0#32
  let c1_i32_604 : BitVec 32 := 1#32
  let arg15 : BitVec 32 := Scf.iv c0_i32_602 c1_i32_604 k0_t5
  let v3671 : Index := Scalar.indexCast arg15
  let c704_2128 : Index := 704#32
  ![1, 3, v3671.toNat, 704]
def k0_off2309 (k0_t5 : Fin k0_t5_loop.trips) : Fin 4 → Nat :=
  let c3_i32_2129 : BitVec 32 := 3#32
  let v3675 : Index := Scalar.indexCast c3_i32_2129
  let c3_i32_2130 : BitVec 32 := 3#32
  let v3676 : Index := Scalar.indexCast c3_i32_2130
  let c0_i32_602 : BitVec 32 := 0#32
  let c1_i32_604 : BitVec 32 := 1#32
  let arg15 : BitVec 32 := Scf.iv c0_i32_602 c1_i32_604 k0_t5
  let v3677 : Index := Scalar.indexCast arg15
  let c720_2131 : Index := 720#32
  ![3, 3, v3677.toNat, 720]
def k0_off2310 (k0_t5 : Fin k0_t5_loop.trips) : Fin 4 → Nat :=
  let c1_i32_2132 : BitVec 32 := 1#32
  let v3681 : Index := Scalar.indexCast c1_i32_2132
  let c3_i32_2133 : BitVec 32 := 3#32
  let v3682 : Index := Scalar.indexCast c3_i32_2133
  let c0_i32_602 : BitVec 32 := 0#32
  let c1_i32_604 : BitVec 32 := 1#32
  let arg15 : BitVec 32 := Scf.iv c0_i32_602 c1_i32_604 k0_t5
  let v3683 : Index := Scalar.indexCast arg15
  let c720_2134 : Index := 720#32
  ![1, 3, v3683.toNat, 720]
def k0_off2311 (k0_t5 : Fin k0_t5_loop.trips) : Fin 4 → Nat :=
  let c3_i32_2135 : BitVec 32 := 3#32
  let v3687 : Index := Scalar.indexCast c3_i32_2135
  let c3_i32_2136 : BitVec 32 := 3#32
  let v3688 : Index := Scalar.indexCast c3_i32_2136
  let c0_i32_602 : BitVec 32 := 0#32
  let c1_i32_604 : BitVec 32 := 1#32
  let arg15 : BitVec 32 := Scf.iv c0_i32_602 c1_i32_604 k0_t5
  let v3689 : Index := Scalar.indexCast arg15
  let c736_2137 : Index := 736#32
  ![3, 3, v3689.toNat, 736]
def k0_off2312 (k0_t5 : Fin k0_t5_loop.trips) : Fin 4 → Nat :=
  let c1_i32_2138 : BitVec 32 := 1#32
  let v3693 : Index := Scalar.indexCast c1_i32_2138
  let c3_i32_2139 : BitVec 32 := 3#32
  let v3694 : Index := Scalar.indexCast c3_i32_2139
  let c0_i32_602 : BitVec 32 := 0#32
  let c1_i32_604 : BitVec 32 := 1#32
  let arg15 : BitVec 32 := Scf.iv c0_i32_602 c1_i32_604 k0_t5
  let v3695 : Index := Scalar.indexCast arg15
  let c736_2140 : Index := 736#32
  ![1, 3, v3695.toNat, 736]
def k0_off2313 (k0_t5 : Fin k0_t5_loop.trips) : Fin 4 → Nat :=
  let c3_i32_2141 : BitVec 32 := 3#32
  let v3699 : Index := Scalar.indexCast c3_i32_2141
  let c3_i32_2142 : BitVec 32 := 3#32
  let v3700 : Index := Scalar.indexCast c3_i32_2142
  let c0_i32_602 : BitVec 32 := 0#32
  let c1_i32_604 : BitVec 32 := 1#32
  let arg15 : BitVec 32 := Scf.iv c0_i32_602 c1_i32_604 k0_t5
  let v3701 : Index := Scalar.indexCast arg15
  let c752_2143 : Index := 752#32
  ![3, 3, v3701.toNat, 752]
def k0_off2314 (k0_t5 : Fin k0_t5_loop.trips) : Fin 4 → Nat :=
  let c1_i32_2144 : BitVec 32 := 1#32
  let v3705 : Index := Scalar.indexCast c1_i32_2144
  let c3_i32_2145 : BitVec 32 := 3#32
  let v3706 : Index := Scalar.indexCast c3_i32_2145
  let c0_i32_602 : BitVec 32 := 0#32
  let c1_i32_604 : BitVec 32 := 1#32
  let arg15 : BitVec 32 := Scf.iv c0_i32_602 c1_i32_604 k0_t5
  let v3707 : Index := Scalar.indexCast arg15
  let c752_2146 : Index := 752#32
  ![1, 3, v3707.toNat, 752]
def k0_off2315 (k0_t5 : Fin k0_t5_loop.trips) : Fin 4 → Nat :=
  let c3_i32_2147 : BitVec 32 := 3#32
  let v3711 : Index := Scalar.indexCast c3_i32_2147
  let c3_i32_2148 : BitVec 32 := 3#32
  let v3712 : Index := Scalar.indexCast c3_i32_2148
  let c0_i32_602 : BitVec 32 := 0#32
  let c1_i32_604 : BitVec 32 := 1#32
  let arg15 : BitVec 32 := Scf.iv c0_i32_602 c1_i32_604 k0_t5
  let v3713 : Index := Scalar.indexCast arg15
  let c768_2149 : Index := 768#32
  ![3, 3, v3713.toNat, 768]
def k0_off2316 (k0_t5 : Fin k0_t5_loop.trips) : Fin 4 → Nat :=
  let c1_i32_2150 : BitVec 32 := 1#32
  let v3717 : Index := Scalar.indexCast c1_i32_2150
  let c3_i32_2151 : BitVec 32 := 3#32
  let v3718 : Index := Scalar.indexCast c3_i32_2151
  let c0_i32_602 : BitVec 32 := 0#32
  let c1_i32_604 : BitVec 32 := 1#32
  let arg15 : BitVec 32 := Scf.iv c0_i32_602 c1_i32_604 k0_t5
  let v3719 : Index := Scalar.indexCast arg15
  let c768_2152 : Index := 768#32
  ![1, 3, v3719.toNat, 768]
def k0_off2317 (k0_t5 : Fin k0_t5_loop.trips) : Fin 4 → Nat :=
  let c3_i32_2153 : BitVec 32 := 3#32
  let v3723 : Index := Scalar.indexCast c3_i32_2153
  let c3_i32_2154 : BitVec 32 := 3#32
  let v3724 : Index := Scalar.indexCast c3_i32_2154
  let c0_i32_602 : BitVec 32 := 0#32
  let c1_i32_604 : BitVec 32 := 1#32
  let arg15 : BitVec 32 := Scf.iv c0_i32_602 c1_i32_604 k0_t5
  let v3725 : Index := Scalar.indexCast arg15
  let c784_2155 : Index := 784#32
  ![3, 3, v3725.toNat, 784]
def k0_off2318 (k0_t5 : Fin k0_t5_loop.trips) : Fin 4 → Nat :=
  let c1_i32_2156 : BitVec 32 := 1#32
  let v3729 : Index := Scalar.indexCast c1_i32_2156
  let c3_i32_2157 : BitVec 32 := 3#32
  let v3730 : Index := Scalar.indexCast c3_i32_2157
  let c0_i32_602 : BitVec 32 := 0#32
  let c1_i32_604 : BitVec 32 := 1#32
  let arg15 : BitVec 32 := Scf.iv c0_i32_602 c1_i32_604 k0_t5
  let v3731 : Index := Scalar.indexCast arg15
  let c784_2158 : Index := 784#32
  ![1, 3, v3731.toNat, 784]
def k0_off2319 (k0_t5 : Fin k0_t5_loop.trips) : Fin 4 → Nat :=
  let c3_i32_2159 : BitVec 32 := 3#32
  let v3735 : Index := Scalar.indexCast c3_i32_2159
  let c3_i32_2160 : BitVec 32 := 3#32
  let v3736 : Index := Scalar.indexCast c3_i32_2160
  let c0_i32_602 : BitVec 32 := 0#32
  let c1_i32_604 : BitVec 32 := 1#32
  let arg15 : BitVec 32 := Scf.iv c0_i32_602 c1_i32_604 k0_t5
  let v3737 : Index := Scalar.indexCast arg15
  let c800_2161 : Index := 800#32
  ![3, 3, v3737.toNat, 800]
def k0_off2320 (k0_t5 : Fin k0_t5_loop.trips) : Fin 4 → Nat :=
  let c1_i32_2162 : BitVec 32 := 1#32
  let v3741 : Index := Scalar.indexCast c1_i32_2162
  let c3_i32_2163 : BitVec 32 := 3#32
  let v3742 : Index := Scalar.indexCast c3_i32_2163
  let c0_i32_602 : BitVec 32 := 0#32
  let c1_i32_604 : BitVec 32 := 1#32
  let arg15 : BitVec 32 := Scf.iv c0_i32_602 c1_i32_604 k0_t5
  let v3743 : Index := Scalar.indexCast arg15
  let c800_2164 : Index := 800#32
  ![1, 3, v3743.toNat, 800]
def k0_off2321 (k0_t5 : Fin k0_t5_loop.trips) : Fin 4 → Nat :=
  let c3_i32_2165 : BitVec 32 := 3#32
  let v3747 : Index := Scalar.indexCast c3_i32_2165
  let c3_i32_2166 : BitVec 32 := 3#32
  let v3748 : Index := Scalar.indexCast c3_i32_2166
  let c0_i32_602 : BitVec 32 := 0#32
  let c1_i32_604 : BitVec 32 := 1#32
  let arg15 : BitVec 32 := Scf.iv c0_i32_602 c1_i32_604 k0_t5
  let v3749 : Index := Scalar.indexCast arg15
  let c816_2167 : Index := 816#32
  ![3, 3, v3749.toNat, 816]
def k0_off2322 (k0_t5 : Fin k0_t5_loop.trips) : Fin 4 → Nat :=
  let c1_i32_2168 : BitVec 32 := 1#32
  let v3753 : Index := Scalar.indexCast c1_i32_2168
  let c3_i32_2169 : BitVec 32 := 3#32
  let v3754 : Index := Scalar.indexCast c3_i32_2169
  let c0_i32_602 : BitVec 32 := 0#32
  let c1_i32_604 : BitVec 32 := 1#32
  let arg15 : BitVec 32 := Scf.iv c0_i32_602 c1_i32_604 k0_t5
  let v3755 : Index := Scalar.indexCast arg15
  let c816_2170 : Index := 816#32
  ![1, 3, v3755.toNat, 816]
def k0_off2323 (k0_t5 : Fin k0_t5_loop.trips) : Fin 4 → Nat :=
  let c3_i32_2171 : BitVec 32 := 3#32
  let v3759 : Index := Scalar.indexCast c3_i32_2171
  let c3_i32_2172 : BitVec 32 := 3#32
  let v3760 : Index := Scalar.indexCast c3_i32_2172
  let c0_i32_602 : BitVec 32 := 0#32
  let c1_i32_604 : BitVec 32 := 1#32
  let arg15 : BitVec 32 := Scf.iv c0_i32_602 c1_i32_604 k0_t5
  let v3761 : Index := Scalar.indexCast arg15
  let c832_2173 : Index := 832#32
  ![3, 3, v3761.toNat, 832]
def k0_off2324 (k0_t5 : Fin k0_t5_loop.trips) : Fin 4 → Nat :=
  let c1_i32_2174 : BitVec 32 := 1#32
  let v3765 : Index := Scalar.indexCast c1_i32_2174
  let c3_i32_2175 : BitVec 32 := 3#32
  let v3766 : Index := Scalar.indexCast c3_i32_2175
  let c0_i32_602 : BitVec 32 := 0#32
  let c1_i32_604 : BitVec 32 := 1#32
  let arg15 : BitVec 32 := Scf.iv c0_i32_602 c1_i32_604 k0_t5
  let v3767 : Index := Scalar.indexCast arg15
  let c832_2176 : Index := 832#32
  ![1, 3, v3767.toNat, 832]
def k0_off2325 (k0_t5 : Fin k0_t5_loop.trips) : Fin 4 → Nat :=
  let c3_i32_2177 : BitVec 32 := 3#32
  let v3771 : Index := Scalar.indexCast c3_i32_2177
  let c3_i32_2178 : BitVec 32 := 3#32
  let v3772 : Index := Scalar.indexCast c3_i32_2178
  let c0_i32_602 : BitVec 32 := 0#32
  let c1_i32_604 : BitVec 32 := 1#32
  let arg15 : BitVec 32 := Scf.iv c0_i32_602 c1_i32_604 k0_t5
  let v3773 : Index := Scalar.indexCast arg15
  let c848_2179 : Index := 848#32
  ![3, 3, v3773.toNat, 848]
def k0_off2326 (k0_t5 : Fin k0_t5_loop.trips) : Fin 4 → Nat :=
  let c1_i32_2180 : BitVec 32 := 1#32
  let v3777 : Index := Scalar.indexCast c1_i32_2180
  let c3_i32_2181 : BitVec 32 := 3#32
  let v3778 : Index := Scalar.indexCast c3_i32_2181
  let c0_i32_602 : BitVec 32 := 0#32
  let c1_i32_604 : BitVec 32 := 1#32
  let arg15 : BitVec 32 := Scf.iv c0_i32_602 c1_i32_604 k0_t5
  let v3779 : Index := Scalar.indexCast arg15
  let c848_2182 : Index := 848#32
  ![1, 3, v3779.toNat, 848]
def k0_off2327 (k0_t5 : Fin k0_t5_loop.trips) : Fin 4 → Nat :=
  let c3_i32_2183 : BitVec 32 := 3#32
  let v3783 : Index := Scalar.indexCast c3_i32_2183
  let c3_i32_2184 : BitVec 32 := 3#32
  let v3784 : Index := Scalar.indexCast c3_i32_2184
  let c0_i32_602 : BitVec 32 := 0#32
  let c1_i32_604 : BitVec 32 := 1#32
  let arg15 : BitVec 32 := Scf.iv c0_i32_602 c1_i32_604 k0_t5
  let v3785 : Index := Scalar.indexCast arg15
  let c864_2185 : Index := 864#32
  ![3, 3, v3785.toNat, 864]
def k0_off2328 (k0_t5 : Fin k0_t5_loop.trips) : Fin 4 → Nat :=
  let c1_i32_2186 : BitVec 32 := 1#32
  let v3789 : Index := Scalar.indexCast c1_i32_2186
  let c3_i32_2187 : BitVec 32 := 3#32
  let v3790 : Index := Scalar.indexCast c3_i32_2187
  let c0_i32_602 : BitVec 32 := 0#32
  let c1_i32_604 : BitVec 32 := 1#32
  let arg15 : BitVec 32 := Scf.iv c0_i32_602 c1_i32_604 k0_t5
  let v3791 : Index := Scalar.indexCast arg15
  let c864_2188 : Index := 864#32
  ![1, 3, v3791.toNat, 864]
def k0_off2329 (k0_t5 : Fin k0_t5_loop.trips) : Fin 4 → Nat :=
  let c3_i32_2189 : BitVec 32 := 3#32
  let v3795 : Index := Scalar.indexCast c3_i32_2189
  let c3_i32_2190 : BitVec 32 := 3#32
  let v3796 : Index := Scalar.indexCast c3_i32_2190
  let c0_i32_602 : BitVec 32 := 0#32
  let c1_i32_604 : BitVec 32 := 1#32
  let arg15 : BitVec 32 := Scf.iv c0_i32_602 c1_i32_604 k0_t5
  let v3797 : Index := Scalar.indexCast arg15
  let c880_2191 : Index := 880#32
  ![3, 3, v3797.toNat, 880]
def k0_off2330 (k0_t5 : Fin k0_t5_loop.trips) : Fin 4 → Nat :=
  let c1_i32_2192 : BitVec 32 := 1#32
  let v3801 : Index := Scalar.indexCast c1_i32_2192
  let c3_i32_2193 : BitVec 32 := 3#32
  let v3802 : Index := Scalar.indexCast c3_i32_2193
  let c0_i32_602 : BitVec 32 := 0#32
  let c1_i32_604 : BitVec 32 := 1#32
  let arg15 : BitVec 32 := Scf.iv c0_i32_602 c1_i32_604 k0_t5
  let v3803 : Index := Scalar.indexCast arg15
  let c880_2194 : Index := 880#32
  ![1, 3, v3803.toNat, 880]
def k0_off2331 (k0_t5 : Fin k0_t5_loop.trips) : Fin 4 → Nat :=
  let c3_i32_2195 : BitVec 32 := 3#32
  let v3807 : Index := Scalar.indexCast c3_i32_2195
  let c3_i32_2196 : BitVec 32 := 3#32
  let v3808 : Index := Scalar.indexCast c3_i32_2196
  let c0_i32_602 : BitVec 32 := 0#32
  let c1_i32_604 : BitVec 32 := 1#32
  let arg15 : BitVec 32 := Scf.iv c0_i32_602 c1_i32_604 k0_t5
  let v3809 : Index := Scalar.indexCast arg15
  let c896_2197 : Index := 896#32
  ![3, 3, v3809.toNat, 896]
def k0_off2332 (k0_t5 : Fin k0_t5_loop.trips) : Fin 4 → Nat :=
  let c1_i32_2198 : BitVec 32 := 1#32
  let v3813 : Index := Scalar.indexCast c1_i32_2198
  let c3_i32_2199 : BitVec 32 := 3#32
  let v3814 : Index := Scalar.indexCast c3_i32_2199
  let c0_i32_602 : BitVec 32 := 0#32
  let c1_i32_604 : BitVec 32 := 1#32
  let arg15 : BitVec 32 := Scf.iv c0_i32_602 c1_i32_604 k0_t5
  let v3815 : Index := Scalar.indexCast arg15
  let c896_2200 : Index := 896#32
  ![1, 3, v3815.toNat, 896]
def k0_off2333 (k0_t5 : Fin k0_t5_loop.trips) : Fin 4 → Nat :=
  let c3_i32_2201 : BitVec 32 := 3#32
  let v3819 : Index := Scalar.indexCast c3_i32_2201
  let c3_i32_2202 : BitVec 32 := 3#32
  let v3820 : Index := Scalar.indexCast c3_i32_2202
  let c0_i32_602 : BitVec 32 := 0#32
  let c1_i32_604 : BitVec 32 := 1#32
  let arg15 : BitVec 32 := Scf.iv c0_i32_602 c1_i32_604 k0_t5
  let v3821 : Index := Scalar.indexCast arg15
  let c912_2203 : Index := 912#32
  ![3, 3, v3821.toNat, 912]
def k0_off2334 (k0_t5 : Fin k0_t5_loop.trips) : Fin 4 → Nat :=
  let c1_i32_2204 : BitVec 32 := 1#32
  let v3825 : Index := Scalar.indexCast c1_i32_2204
  let c3_i32_2205 : BitVec 32 := 3#32
  let v3826 : Index := Scalar.indexCast c3_i32_2205
  let c0_i32_602 : BitVec 32 := 0#32
  let c1_i32_604 : BitVec 32 := 1#32
  let arg15 : BitVec 32 := Scf.iv c0_i32_602 c1_i32_604 k0_t5
  let v3827 : Index := Scalar.indexCast arg15
  let c912_2206 : Index := 912#32
  ![1, 3, v3827.toNat, 912]
def k0_off2335 (k0_t5 : Fin k0_t5_loop.trips) : Fin 4 → Nat :=
  let c3_i32_2207 : BitVec 32 := 3#32
  let v3831 : Index := Scalar.indexCast c3_i32_2207
  let c3_i32_2208 : BitVec 32 := 3#32
  let v3832 : Index := Scalar.indexCast c3_i32_2208
  let c0_i32_602 : BitVec 32 := 0#32
  let c1_i32_604 : BitVec 32 := 1#32
  let arg15 : BitVec 32 := Scf.iv c0_i32_602 c1_i32_604 k0_t5
  let v3833 : Index := Scalar.indexCast arg15
  let c928_2209 : Index := 928#32
  ![3, 3, v3833.toNat, 928]
def k0_off2336 (k0_t5 : Fin k0_t5_loop.trips) : Fin 4 → Nat :=
  let c1_i32_2210 : BitVec 32 := 1#32
  let v3837 : Index := Scalar.indexCast c1_i32_2210
  let c3_i32_2211 : BitVec 32 := 3#32
  let v3838 : Index := Scalar.indexCast c3_i32_2211
  let c0_i32_602 : BitVec 32 := 0#32
  let c1_i32_604 : BitVec 32 := 1#32
  let arg15 : BitVec 32 := Scf.iv c0_i32_602 c1_i32_604 k0_t5
  let v3839 : Index := Scalar.indexCast arg15
  let c928_2212 : Index := 928#32
  ![1, 3, v3839.toNat, 928]
def k0_off2337 (k0_t5 : Fin k0_t5_loop.trips) : Fin 4 → Nat :=
  let c3_i32_2213 : BitVec 32 := 3#32
  let v3843 : Index := Scalar.indexCast c3_i32_2213
  let c3_i32_2214 : BitVec 32 := 3#32
  let v3844 : Index := Scalar.indexCast c3_i32_2214
  let c0_i32_602 : BitVec 32 := 0#32
  let c1_i32_604 : BitVec 32 := 1#32
  let arg15 : BitVec 32 := Scf.iv c0_i32_602 c1_i32_604 k0_t5
  let v3845 : Index := Scalar.indexCast arg15
  let c944_2215 : Index := 944#32
  ![3, 3, v3845.toNat, 944]
def k0_off2338 (k0_t5 : Fin k0_t5_loop.trips) : Fin 4 → Nat :=
  let c1_i32_2216 : BitVec 32 := 1#32
  let v3849 : Index := Scalar.indexCast c1_i32_2216
  let c3_i32_2217 : BitVec 32 := 3#32
  let v3850 : Index := Scalar.indexCast c3_i32_2217
  let c0_i32_602 : BitVec 32 := 0#32
  let c1_i32_604 : BitVec 32 := 1#32
  let arg15 : BitVec 32 := Scf.iv c0_i32_602 c1_i32_604 k0_t5
  let v3851 : Index := Scalar.indexCast arg15
  let c944_2218 : Index := 944#32
  ![1, 3, v3851.toNat, 944]
def k0_off2339 (k0_t5 : Fin k0_t5_loop.trips) : Fin 4 → Nat :=
  let c3_i32_2219 : BitVec 32 := 3#32
  let v3855 : Index := Scalar.indexCast c3_i32_2219
  let c3_i32_2220 : BitVec 32 := 3#32
  let v3856 : Index := Scalar.indexCast c3_i32_2220
  let c0_i32_602 : BitVec 32 := 0#32
  let c1_i32_604 : BitVec 32 := 1#32
  let arg15 : BitVec 32 := Scf.iv c0_i32_602 c1_i32_604 k0_t5
  let v3857 : Index := Scalar.indexCast arg15
  let c960_2221 : Index := 960#32
  ![3, 3, v3857.toNat, 960]
def k0_off2340 (k0_t5 : Fin k0_t5_loop.trips) : Fin 4 → Nat :=
  let c1_i32_2222 : BitVec 32 := 1#32
  let v3861 : Index := Scalar.indexCast c1_i32_2222
  let c3_i32_2223 : BitVec 32 := 3#32
  let v3862 : Index := Scalar.indexCast c3_i32_2223
  let c0_i32_602 : BitVec 32 := 0#32
  let c1_i32_604 : BitVec 32 := 1#32
  let arg15 : BitVec 32 := Scf.iv c0_i32_602 c1_i32_604 k0_t5
  let v3863 : Index := Scalar.indexCast arg15
  let c960_2224 : Index := 960#32
  ![1, 3, v3863.toNat, 960]
def k0_off2341 (k0_t5 : Fin k0_t5_loop.trips) : Fin 4 → Nat :=
  let c3_i32_2225 : BitVec 32 := 3#32
  let v3867 : Index := Scalar.indexCast c3_i32_2225
  let c3_i32_2226 : BitVec 32 := 3#32
  let v3868 : Index := Scalar.indexCast c3_i32_2226
  let c0_i32_602 : BitVec 32 := 0#32
  let c1_i32_604 : BitVec 32 := 1#32
  let arg15 : BitVec 32 := Scf.iv c0_i32_602 c1_i32_604 k0_t5
  let v3869 : Index := Scalar.indexCast arg15
  let c976_2227 : Index := 976#32
  ![3, 3, v3869.toNat, 976]
def k0_off2342 (k0_t5 : Fin k0_t5_loop.trips) : Fin 4 → Nat :=
  let c1_i32_2228 : BitVec 32 := 1#32
  let v3873 : Index := Scalar.indexCast c1_i32_2228
  let c3_i32_2229 : BitVec 32 := 3#32
  let v3874 : Index := Scalar.indexCast c3_i32_2229
  let c0_i32_602 : BitVec 32 := 0#32
  let c1_i32_604 : BitVec 32 := 1#32
  let arg15 : BitVec 32 := Scf.iv c0_i32_602 c1_i32_604 k0_t5
  let v3875 : Index := Scalar.indexCast arg15
  let c976_2230 : Index := 976#32
  ![1, 3, v3875.toNat, 976]
def k0_off2343 (k0_t5 : Fin k0_t5_loop.trips) : Fin 4 → Nat :=
  let c3_i32_2231 : BitVec 32 := 3#32
  let v3879 : Index := Scalar.indexCast c3_i32_2231
  let c3_i32_2232 : BitVec 32 := 3#32
  let v3880 : Index := Scalar.indexCast c3_i32_2232
  let c0_i32_602 : BitVec 32 := 0#32
  let c1_i32_604 : BitVec 32 := 1#32
  let arg15 : BitVec 32 := Scf.iv c0_i32_602 c1_i32_604 k0_t5
  let v3881 : Index := Scalar.indexCast arg15
  let c992_2233 : Index := 992#32
  ![3, 3, v3881.toNat, 992]
def k0_off2344 (k0_t5 : Fin k0_t5_loop.trips) : Fin 4 → Nat :=
  let c1_i32_2234 : BitVec 32 := 1#32
  let v3885 : Index := Scalar.indexCast c1_i32_2234
  let c3_i32_2235 : BitVec 32 := 3#32
  let v3886 : Index := Scalar.indexCast c3_i32_2235
  let c0_i32_602 : BitVec 32 := 0#32
  let c1_i32_604 : BitVec 32 := 1#32
  let arg15 : BitVec 32 := Scf.iv c0_i32_602 c1_i32_604 k0_t5
  let v3887 : Index := Scalar.indexCast arg15
  let c992_2236 : Index := 992#32
  ![1, 3, v3887.toNat, 992]
def k0_off2345 (k0_t5 : Fin k0_t5_loop.trips) : Fin 4 → Nat :=
  let c3_i32_2237 : BitVec 32 := 3#32
  let v3891 : Index := Scalar.indexCast c3_i32_2237
  let c3_i32_2238 : BitVec 32 := 3#32
  let v3892 : Index := Scalar.indexCast c3_i32_2238
  let c0_i32_602 : BitVec 32 := 0#32
  let c1_i32_604 : BitVec 32 := 1#32
  let arg15 : BitVec 32 := Scf.iv c0_i32_602 c1_i32_604 k0_t5
  let v3893 : Index := Scalar.indexCast arg15
  let c1008_2239 : Index := 1008#32
  ![3, 3, v3893.toNat, 1008]
def k0_off2346 (k0_t5 : Fin k0_t5_loop.trips) : Fin 4 → Nat :=
  let c1_i32_2240 : BitVec 32 := 1#32
  let v3897 : Index := Scalar.indexCast c1_i32_2240
  let c3_i32_2241 : BitVec 32 := 3#32
  let v3898 : Index := Scalar.indexCast c3_i32_2241
  let c0_i32_602 : BitVec 32 := 0#32
  let c1_i32_604 : BitVec 32 := 1#32
  let arg15 : BitVec 32 := Scf.iv c0_i32_602 c1_i32_604 k0_t5
  let v3899 : Index := Scalar.indexCast arg15
  let c1008_2242 : Index := 1008#32
  ![1, 3, v3899.toNat, 1008]
def k0_off2347 (i : grid0.Coords) : Fin 3 → Nat :=
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_137 : BitVec 32 := 0#32
  ![0, v2.toNat, 0]
def k0_off2348 (i : grid0.Coords) : Fin 3 → Nat :=
  let c1_i32_143 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_146 : BitVec 32 := 0#32
  ![1, v2.toNat, 0]
def k0_off2349 (i : grid0.Coords) : Fin 3 → Nat :=
  let c2_i32_152 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_155 : BitVec 32 := 0#32
  ![2, v2.toNat, 0]
def k0_off2350 (i : grid0.Coords) : Fin 3 → Nat :=
  let c3_i32_161 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_164 : BitVec 32 := 0#32
  ![3, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.R1.Facts₀ : Prop where
  hcore0 : grid0.bound 0 ≤ τ.nSC
  hsub0 : grid0.bound 1 ≤ τ.nSub
  k0_off1_inb : ∀ i : grid0.Coords, ∀ (r : Fin 3), ∀ a, (k0_off1 i (BitVec.ofNat 32 (4 * r.val))) a + S4x1024.size a ≤ S4096x1024.size a
  k0_off2_inb : ∀ i : grid0.Coords, ∀ (r : Fin 3), ∀ a, (k0_off2 i (BitVec.ofNat 32 (4 * r.val))) a + S1x4x1024.size a ≤ S4x4096x1024.size a
  k0_off3_inb : ∀ i : grid0.Coords, ∀ (r : Fin 3), ∀ a, (k0_off3 i (BitVec.ofNat 32 (4 * r.val))) a + S1x4x1024.size a ≤ S4x4096x1024.size a
  k0_off4_inb : ∀ i : grid0.Coords, ∀ (r : Fin 3), ∀ a, (k0_off4 i (BitVec.ofNat 32 (4 * r.val))) a + S1x4x1024.size a ≤ S4x4096x1024.size a
  k0_off5_inb : ∀ i : grid0.Coords, ∀ (r : Fin 3), ∀ a, (k0_off5 i (BitVec.ofNat 32 (4 * r.val))) a + S1x4x1024.size a ≤ S4x4096x1024.size a
  k0_t1_ok : k0_t1_loop.OK
  k0_off6_inb : ∀ i : grid0.Coords, ∀ a, (k0_off6 i) a + S4x1024.size a ≤ S4096x1024.size a
  k0_off7_inb : ∀ i : grid0.Coords, ∀ a, (k0_off7 i) a + S1x4x1024.size a ≤ S4x4096x1024.size a
  k0_off8_inb : ∀ i : grid0.Coords, ∀ a, (k0_off8 i) a + S1x4x1024.size a ≤ S4x4096x1024.size a
  k0_off9_inb : ∀ i : grid0.Coords, ∀ a, (k0_off9 i) a + S1x4x1024.size a ≤ S4x4096x1024.size a
  k0_off10_inb : ∀ i : grid0.Coords, ∀ a, (k0_off10 i) a + S1x4x1024.size a ≤ S4x4096x1024.size a
  k0_off11_inb : ∀ (i : grid0.Coords) (k0_t1 : Fin k0_t1_loop.trips), ∀ (k0_h1 : k0_cond1 k0_t1 = 1#1), ∀ a, (k0_off11 i k0_t1) a + S4x1024.size a ≤ S4096x1024.size a
  k0_off12_inb : ∀ (i : grid0.Coords) (k0_t1 : Fin k0_t1_loop.trips), ∀ (k0_h1 : k0_cond1 k0_t1 = 1#1), ∀ a, (k0_off12 i k0_t1) a + S1x4x1024.size a ≤ S4x4096x1024.size a
  k0_off13_inb : ∀ (i : grid0.Coords) (k0_t1 : Fin k0_t1_loop.trips), ∀ (k0_h1 : k0_cond1 k0_t1 = 1#1), ∀ a, (k0_off13 i k0_t1) a + S1x4x1024.size a ≤ S4x4096x1024.size a
  k0_off14_inb : ∀ (i : grid0.Coords) (k0_t1 : Fin k0_t1_loop.trips), ∀ (k0_h1 : k0_cond1 k0_t1 = 1#1), ∀ a, (k0_off14 i k0_t1) a + S1x4x1024.size a ≤ S4x4096x1024.size a
  k0_off15_inb : ∀ (i : grid0.Coords) (k0_t1 : Fin k0_t1_loop.trips), ∀ (k0_h1 : k0_cond1 k0_t1 = 1#1), ∀ a, (k0_off15 i k0_t1) a + S1x4x1024.size a ≤ S4x4096x1024.size a
  k0_off16_inb : ∀ (i : grid0.Coords) (k0_t1 : Fin k0_t1_loop.trips), ∀ (k0_h2 : k0_cond2 k0_t1 = 1#1), ∀ a, (k0_off16 i) a + S1x4x1024.size a ≤ S4x4096x1024.size a
  k0_off17_inb : ∀ (i : grid0.Coords) (k0_t1 : Fin k0_t1_loop.trips), ∀ (k0_h2 : k0_cond2 k0_t1 = 1#1), ∀ a, (k0_off17 i) a + S1x4x1024.size a ≤ S4x4096x1024.size a
  k0_off18_inb : ∀ (i : grid0.Coords) (k0_t1 : Fin k0_t1_loop.trips), ∀ (k0_h2 : k0_cond2 k0_t1 = 1#1), ∀ a, (k0_off18 i) a + S1x4x1024.size a ≤ S4x4096x1024.size a
  k0_off19_inb : ∀ (i : grid0.Coords) (k0_t1 : Fin k0_t1_loop.trips), ∀ (k0_h2 : k0_cond2 k0_t1 = 1#1), ∀ a, (k0_off19 i) a + S1x4x1024.size a ≤ S4x4096x1024.size a
  k0_t2_ok : k0_t2_loop.OK
  k0_off20_inb : ∀ k0_t2 : Fin k0_t2_loop.trips, ∀ a, (k0_off20 k0_t2) a + S1x1x16.size a ≤ S4x4x1024.size a
  k0_off21_inb : ∀ k0_t2 : Fin k0_t2_loop.trips, ∀ a, (k0_off21 k0_t2) a + S1x1x16.size a ≤ S4x4x1024.size a
  k0_off22_inb : ∀ k0_t2 : Fin k0_t2_loop.trips, ∀ a, (k0_off22 k0_t2) a + S1x1x16.size a ≤ S4x4x1024.size a
  k0_off23_inb : ∀ k0_t2 : Fin k0_t2_loop.trips, ∀ a, (k0_off23 k0_t2) a + S1x1x16.size a ≤ S4x4x1024.size a
  k0_off24_inb : ∀ k0_t2 : Fin k0_t2_loop.trips, ∀ a, (k0_off24 k0_t2) a + S1x1x16.size a ≤ S4x4x1024.size a
  k0_off25_inb : ∀ k0_t2 : Fin k0_t2_loop.trips, ∀ a, (k0_off25 k0_t2) a + S1x1x16.size a ≤ S4x4x1024.size a
  k0_off26_inb : ∀ k0_t2 : Fin k0_t2_loop.trips, ∀ a, (k0_off26 k0_t2) a + S1x1x16.size a ≤ S4x4x1024.size a
  k0_off27_inb : ∀ k0_t2 : Fin k0_t2_loop.trips, ∀ a, (k0_off27 k0_t2) a + S1x1x16.size a ≤ S4x4x1024.size a
  k0_off28_inb : ∀ k0_t2 : Fin k0_t2_loop.trips, ∀ a, (k0_off28 k0_t2) a + S1x1x16.size a ≤ S4x4x1024.size a
  k0_off29_inb : ∀ k0_t2 : Fin k0_t2_loop.trips, ∀ a, (k0_off29 k0_t2) a + S1x1x16.size a ≤ S4x4x1024.size a
  k0_off30_inb : ∀ k0_t2 : Fin k0_t2_loop.trips, ∀ a, (k0_off30 k0_t2) a + S1x1x16.size a ≤ S4x4x1024.size a
  k0_off31_inb : ∀ k0_t2 : Fin k0_t2_loop.trips, ∀ a, (k0_off31 k0_t2) a + S1x1x16.size a ≤ S4x4x1024.size a
  k0_off32_inb : ∀ k0_t2 : Fin k0_t2_loop.trips, ∀ a, (k0_off32 k0_t2) a + S1x1x16.size a ≤ S4x4x1024.size a
  k0_off33_inb : ∀ k0_t2 : Fin k0_t2_loop.trips, ∀ a, (k0_off33 k0_t2) a + S1x1x16.size a ≤ S4x4x1024.size a
  k0_off34_inb : ∀ k0_t2 : Fin k0_t2_loop.trips, ∀ a, (k0_off34 k0_t2) a + S1x1x16.size a ≤ S4x4x1024.size a
  k0_off35_inb : ∀ k0_t2 : Fin k0_t2_loop.trips, ∀ a, (k0_off35 k0_t2) a + S1x1x16.size a ≤ S4x4x1024.size a
  k0_off36_inb : ∀ k0_t2 : Fin k0_t2_loop.trips, ∀ a, (k0_off36 k0_t2) a + S1x1x16.size a ≤ S4x4x1024.size a
  k0_off37_inb : ∀ k0_t2 : Fin k0_t2_loop.trips, ∀ a, (k0_off37 k0_t2) a + S1x1x16.size a ≤ S4x4x1024.size a
  k0_off38_inb : ∀ k0_t2 : Fin k0_t2_loop.trips, ∀ a, (k0_off38 k0_t2) a + S1x1x16.size a ≤ S4x4x1024.size a
  k0_off39_inb : ∀ k0_t2 : Fin k0_t2_loop.trips, ∀ a, (k0_off39 k0_t2) a + S1x1x16.size a ≤ S4x4x1024.size a
  k0_off40_inb : ∀ k0_t2 : Fin k0_t2_loop.trips, ∀ a, (k0_off40 k0_t2) a + S1x1x16.size a ≤ S4x4x1024.size a
  k0_off41_inb : ∀ k0_t2 : Fin k0_t2_loop.trips, ∀ a, (k0_off41 k0_t2) a + S1x1x16.size a ≤ S4x4x1024.size a
  k0_off42_inb : ∀ k0_t2 : Fin k0_t2_loop.trips, ∀ a, (k0_off42 k0_t2) a + S1x1x16.size a ≤ S4x4x1024.size a
  k0_off43_inb : ∀ k0_t2 : Fin k0_t2_loop.trips, ∀ a, (k0_off43 k0_t2) a + S1x1x16.size a ≤ S4x4x1024.size a
  k0_off44_inb : ∀ k0_t2 : Fin k0_t2_loop.trips, ∀ a, (k0_off44 k0_t2) a + S1x1x16.size a ≤ S4x4x1024.size a
  k0_off45_inb : ∀ k0_t2 : Fin k0_t2_loop.trips, ∀ a, (k0_off45 k0_t2) a + S1x1x16.size a ≤ S4x4x1024.size a
  k0_off46_inb : ∀ k0_t2 : Fin k0_t2_loop.trips, ∀ a, (k0_off46 k0_t2) a + S1x1x16.size a ≤ S4x4x1024.size a
  k0_off47_inb : ∀ k0_t2 : Fin k0_t2_loop.trips, ∀ a, (k0_off47 k0_t2) a + S1x1x16.size a ≤ S4x4x1024.size a
  k0_off48_inb : ∀ k0_t2 : Fin k0_t2_loop.trips, ∀ a, (k0_off48 k0_t2) a + S1x1x16.size a ≤ S4x4x1024.size a
  k0_off49_inb : ∀ k0_t2 : Fin k0_t2_loop.trips, ∀ a, (k0_off49 k0_t2) a + S1x1x16.size a ≤ S4x4x1024.size a
  k0_off50_inb : ∀ k0_t2 : Fin k0_t2_loop.trips, ∀ a, (k0_off50 k0_t2) a + S1x1x16.size a ≤ S4x4x1024.size a
  k0_off51_inb : ∀ k0_t2 : Fin k0_t2_loop.trips, ∀ a, (k0_off51 k0_t2) a + S1x1x16.size a ≤ S4x4x1024.size a
  k0_off52_inb : ∀ k0_t2 : Fin k0_t2_loop.trips, ∀ a, (k0_off52 k0_t2) a + S1x1x1x16.size a ≤ S4x4x4x1024.size a
  k0_off53_inb : ∀ k0_t2 : Fin k0_t2_loop.trips, ∀ a, (k0_off53 k0_t2) a + S1x1x1x16.size a ≤ S2x4x4x1024.size a
  k0_off54_inb : ∀ k0_t2 : Fin k0_t2_loop.trips, ∀ a, (k0_off54 k0_t2) a + S1x1x1x16.size a ≤ S4x4x4x1024.size a
  k0_off55_inb : ∀ k0_t2 : Fin k0_t2_loop.trips, ∀ a, (k0_off55 k0_t2) a + S1x1x1x16.size a ≤ S2x4x4x1024.size a
  k0_off56_inb : ∀ k0_t2 : Fin k0_t2_loop.trips, ∀ a, (k0_off56 k0_t2) a + S1x1x1x16.size a ≤ S4x4x4x1024.size a
  k0_off57_inb : ∀ k0_t2 : Fin k0_t2_loop.trips, ∀ a, (k0_off57 k0_t2) a + S1x1x1x16.size a ≤ S2x4x4x1024.size a
  k0_off58_inb : ∀ k0_t2 : Fin k0_t2_loop.trips, ∀ a, (k0_off58 k0_t2) a + S1x1x1x16.size a ≤ S4x4x4x1024.size a
  k0_off59_inb : ∀ k0_t2 : Fin k0_t2_loop.trips, ∀ a, (k0_off59 k0_t2) a + S1x1x1x16.size a ≤ S2x4x4x1024.size a
  k0_off60_inb : ∀ k0_t2 : Fin k0_t2_loop.trips, ∀ a, (k0_off60 k0_t2) a + S1x1x1x16.size a ≤ S4x4x4x1024.size a
  k0_off61_inb : ∀ k0_t2 : Fin k0_t2_loop.trips, ∀ a, (k0_off61 k0_t2) a + S1x1x1x16.size a ≤ S2x4x4x1024.size a
  k0_off62_inb : ∀ k0_t2 : Fin k0_t2_loop.trips, ∀ a, (k0_off62 k0_t2) a + S1x1x1x16.size a ≤ S4x4x4x1024.size a
  k0_off63_inb : ∀ k0_t2 : Fin k0_t2_loop.trips, ∀ a, (k0_off63 k0_t2) a + S1x1x1x16.size a ≤ S2x4x4x1024.size a
  k0_off64_inb : ∀ k0_t2 : Fin k0_t2_loop.trips, ∀ a, (k0_off64 k0_t2) a + S1x1x1x16.size a ≤ S4x4x4x1024.size a
  k0_off65_inb : ∀ k0_t2 : Fin k0_t2_loop.trips, ∀ a, (k0_off65 k0_t2) a + S1x1x1x16.size a ≤ S2x4x4x1024.size a
  k0_off66_inb : ∀ k0_t2 : Fin k0_t2_loop.trips, ∀ a, (k0_off66 k0_t2) a + S1x1x1x16.size a ≤ S4x4x4x1024.size a
  k0_off67_inb : ∀ k0_t2 : Fin k0_t2_loop.trips, ∀ a, (k0_off67 k0_t2) a + S1x1x1x16.size a ≤ S2x4x4x1024.size a
  k0_off68_inb : ∀ k0_t2 : Fin k0_t2_loop.trips, ∀ a, (k0_off68 k0_t2) a + S1x1x1x16.size a ≤ S4x4x4x1024.size a
  k0_off69_inb : ∀ k0_t2 : Fin k0_t2_loop.trips, ∀ a, (k0_off69 k0_t2) a + S1x1x1x16.size a ≤ S2x4x4x1024.size a
  k0_off70_inb : ∀ k0_t2 : Fin k0_t2_loop.trips, ∀ a, (k0_off70 k0_t2) a + S1x1x1x16.size a ≤ S4x4x4x1024.size a
  k0_off71_inb : ∀ k0_t2 : Fin k0_t2_loop.trips, ∀ a, (k0_off71 k0_t2) a + S1x1x1x16.size a ≤ S2x4x4x1024.size a
  k0_off72_inb : ∀ k0_t2 : Fin k0_t2_loop.trips, ∀ a, (k0_off72 k0_t2) a + S1x1x1x16.size a ≤ S4x4x4x1024.size a
  k0_off73_inb : ∀ k0_t2 : Fin k0_t2_loop.trips, ∀ a, (k0_off73 k0_t2) a + S1x1x1x16.size a ≤ S2x4x4x1024.size a
  k0_off74_inb : ∀ k0_t2 : Fin k0_t2_loop.trips, ∀ a, (k0_off74 k0_t2) a + S1x1x1x16.size a ≤ S4x4x4x1024.size a
  k0_off75_inb : ∀ k0_t2 : Fin k0_t2_loop.trips, ∀ a, (k0_off75 k0_t2) a + S1x1x1x16.size a ≤ S2x4x4x1024.size a
  k0_off76_inb : ∀ k0_t2 : Fin k0_t2_loop.trips, ∀ a, (k0_off76 k0_t2) a + S1x1x1x16.size a ≤ S4x4x4x1024.size a
  k0_off77_inb : ∀ k0_t2 : Fin k0_t2_loop.trips, ∀ a, (k0_off77 k0_t2) a + S1x1x1x16.size a ≤ S2x4x4x1024.size a
  k0_off78_inb : ∀ k0_t2 : Fin k0_t2_loop.trips, ∀ a, (k0_off78 k0_t2) a + S1x1x1x16.size a ≤ S4x4x4x1024.size a
  k0_off79_inb : ∀ k0_t2 : Fin k0_t2_loop.trips, ∀ a, (k0_off79 k0_t2) a + S1x1x1x16.size a ≤ S2x4x4x1024.size a
  k0_off80_inb : ∀ k0_t2 : Fin k0_t2_loop.trips, ∀ a, (k0_off80 k0_t2) a + S1x1x1x16.size a ≤ S4x4x4x1024.size a
  k0_off81_inb : ∀ k0_t2 : Fin k0_t2_loop.trips, ∀ a, (k0_off81 k0_t2) a + S1x1x1x16.size a ≤ S2x4x4x1024.size a
  k0_off82_inb : ∀ k0_t2 : Fin k0_t2_loop.trips, ∀ a, (k0_off82 k0_t2) a + S1x1x1x16.size a ≤ S4x4x4x1024.size a
  k0_off83_inb : ∀ k0_t2 : Fin k0_t2_loop.trips, ∀ a, (k0_off83 k0_t2) a + S1x1x1x16.size a ≤ S2x4x4x1024.size a
  k0_off84_inb : ∀ k0_t2 : Fin k0_t2_loop.trips, ∀ a, (k0_off84 k0_t2) a + S1x1x1x16.size a ≤ S4x4x4x1024.size a
  k0_off85_inb : ∀ k0_t2 : Fin k0_t2_loop.trips, ∀ a, (k0_off85 k0_t2) a + S1x1x1x16.size a ≤ S2x4x4x1024.size a
  k0_off86_inb : ∀ k0_t2 : Fin k0_t2_loop.trips, ∀ a, (k0_off86 k0_t2) a + S1x1x1x16.size a ≤ S4x4x4x1024.size a
  k0_off87_inb : ∀ k0_t2 : Fin k0_t2_loop.trips, ∀ a, (k0_off87 k0_t2) a + S1x1x1x16.size a ≤ S2x4x4x1024.size a
  k0_off88_inb : ∀ k0_t2 : Fin k0_t2_loop.trips, ∀ a, (k0_off88 k0_t2) a + S1x1x1x16.size a ≤ S4x4x4x1024.size a
  k0_off89_inb : ∀ k0_t2 : Fin k0_t2_loop.trips, ∀ a, (k0_off89 k0_t2) a + S1x1x1x16.size a ≤ S2x4x4x1024.size a
  k0_off90_inb : ∀ k0_t2 : Fin k0_t2_loop.trips, ∀ a, (k0_off90 k0_t2) a + S1x1x1x16.size a ≤ S4x4x4x1024.size a
  k0_off91_inb : ∀ k0_t2 : Fin k0_t2_loop.trips, ∀ a, (k0_off91 k0_t2) a + S1x1x1x16.size a ≤ S2x4x4x1024.size a
  k0_off92_inb : ∀ k0_t2 : Fin k0_t2_loop.trips, ∀ a, (k0_off92 k0_t2) a + S1x1x1x16.size a ≤ S4x4x4x1024.size a
  k0_off93_inb : ∀ k0_t2 : Fin k0_t2_loop.trips, ∀ a, (k0_off93 k0_t2) a + S1x1x1x16.size a ≤ S2x4x4x1024.size a
  k0_off94_inb : ∀ k0_t2 : Fin k0_t2_loop.trips, ∀ a, (k0_off94 k0_t2) a + S1x1x1x16.size a ≤ S4x4x4x1024.size a
  k0_off95_inb : ∀ k0_t2 : Fin k0_t2_loop.trips, ∀ a, (k0_off95 k0_t2) a + S1x1x1x16.size a ≤ S2x4x4x1024.size a
  k0_off96_inb : ∀ k0_t2 : Fin k0_t2_loop.trips, ∀ a, (k0_off96 k0_t2) a + S1x1x1x16.size a ≤ S4x4x4x1024.size a
  k0_off97_inb : ∀ k0_t2 : Fin k0_t2_loop.trips, ∀ a, (k0_off97 k0_t2) a + S1x1x1x16.size a ≤ S2x4x4x1024.size a
  k0_off98_inb : ∀ k0_t2 : Fin k0_t2_loop.trips, ∀ a, (k0_off98 k0_t2) a + S1x1x1x16.size a ≤ S4x4x4x1024.size a
  k0_off99_inb : ∀ k0_t2 : Fin k0_t2_loop.trips, ∀ a, (k0_off99 k0_t2) a + S1x1x1x16.size a ≤ S2x4x4x1024.size a
  k0_off100_inb : ∀ k0_t2 : Fin k0_t2_loop.trips, ∀ a, (k0_off100 k0_t2) a + S1x1x1x16.size a ≤ S4x4x4x1024.size a
  k0_off101_inb : ∀ k0_t2 : Fin k0_t2_loop.trips, ∀ a, (k0_off101 k0_t2) a + S1x1x1x16.size a ≤ S2x4x4x1024.size a
  k0_off102_inb : ∀ k0_t2 : Fin k0_t2_loop.trips, ∀ a, (k0_off102 k0_t2) a + S1x1x1x16.size a ≤ S4x4x4x1024.size a
  k0_off103_inb : ∀ k0_t2 : Fin k0_t2_loop.trips, ∀ a, (k0_off103 k0_t2) a + S1x1x1x16.size a ≤ S2x4x4x1024.size a
  k0_off104_inb : ∀ k0_t2 : Fin k0_t2_loop.trips, ∀ a, (k0_off104 k0_t2) a + S1x1x1x16.size a ≤ S4x4x4x1024.size a
  k0_off105_inb : ∀ k0_t2 : Fin k0_t2_loop.trips, ∀ a, (k0_off105 k0_t2) a + S1x1x1x16.size a ≤ S2x4x4x1024.size a
  k0_off106_inb : ∀ k0_t2 : Fin k0_t2_loop.trips, ∀ a, (k0_off106 k0_t2) a + S1x1x1x16.size a ≤ S4x4x4x1024.size a
  k0_off107_inb : ∀ k0_t2 : Fin k0_t2_loop.trips, ∀ a, (k0_off107 k0_t2) a + S1x1x1x16.size a ≤ S2x4x4x1024.size a
  k0_off108_inb : ∀ k0_t2 : Fin k0_t2_loop.trips, ∀ a, (k0_off108 k0_t2) a + S1x1x1x16.size a ≤ S4x4x4x1024.size a
  k0_off109_inb : ∀ k0_t2 : Fin k0_t2_loop.trips, ∀ a, (k0_off109 k0_t2) a + S1x1x1x16.size a ≤ S2x4x4x1024.size a
  k0_off110_inb : ∀ k0_t2 : Fin k0_t2_loop.trips, ∀ a, (k0_off110 k0_t2) a + S1x1x1x16.size a ≤ S4x4x4x1024.size a
  k0_off111_inb : ∀ k0_t2 : Fin k0_t2_loop.trips, ∀ a, (k0_off111 k0_t2) a + S1x1x1x16.size a ≤ S2x4x4x1024.size a
  k0_off112_inb : ∀ k0_t2 : Fin k0_t2_loop.trips, ∀ a, (k0_off112 k0_t2) a + S1x1x1x16.size a ≤ S4x4x4x1024.size a
  k0_off113_inb : ∀ k0_t2 : Fin k0_t2_loop.trips, ∀ a, (k0_off113 k0_t2) a + S1x1x1x16.size a ≤ S2x4x4x1024.size a
  k0_off114_inb : ∀ k0_t2 : Fin k0_t2_loop.trips, ∀ a, (k0_off114 k0_t2) a + S1x1x1x16.size a ≤ S4x4x4x1024.size a
  k0_off115_inb : ∀ k0_t2 : Fin k0_t2_loop.trips, ∀ a, (k0_off115 k0_t2) a + S1x1x1x16.size a ≤ S2x4x4x1024.size a
  k0_off116_inb : ∀ k0_t2 : Fin k0_t2_loop.trips, ∀ a, (k0_off116 k0_t2) a + S1x1x1x16.size a ≤ S4x4x4x1024.size a
  k0_off117_inb : ∀ k0_t2 : Fin k0_t2_loop.trips, ∀ a, (k0_off117 k0_t2) a + S1x1x1x16.size a ≤ S2x4x4x1024.size a
  k0_off118_inb : ∀ k0_t2 : Fin k0_t2_loop.trips, ∀ a, (k0_off118 k0_t2) a + S1x1x1x16.size a ≤ S4x4x4x1024.size a
  k0_off119_inb : ∀ k0_t2 : Fin k0_t2_loop.trips, ∀ a, (k0_off119 k0_t2) a + S1x1x1x16.size a ≤ S2x4x4x1024.size a
  k0_off120_inb : ∀ k0_t2 : Fin k0_t2_loop.trips, ∀ a, (k0_off120 k0_t2) a + S1x1x1x16.size a ≤ S4x4x4x1024.size a
  k0_off121_inb : ∀ k0_t2 : Fin k0_t2_loop.trips, ∀ a, (k0_off121 k0_t2) a + S1x1x1x16.size a ≤ S2x4x4x1024.size a
  k0_off122_inb : ∀ k0_t2 : Fin k0_t2_loop.trips, ∀ a, (k0_off122 k0_t2) a + S1x1x1x16.size a ≤ S4x4x4x1024.size a
  k0_off123_inb : ∀ k0_t2 : Fin k0_t2_loop.trips, ∀ a, (k0_off123 k0_t2) a + S1x1x1x16.size a ≤ S2x4x4x1024.size a
  k0_off124_inb : ∀ k0_t2 : Fin k0_t2_loop.trips, ∀ a, (k0_off124 k0_t2) a + S1x1x1x16.size a ≤ S4x4x4x1024.size a
  k0_off125_inb : ∀ k0_t2 : Fin k0_t2_loop.trips, ∀ a, (k0_off125 k0_t2) a + S1x1x1x16.size a ≤ S2x4x4x1024.size a
  k0_off126_inb : ∀ k0_t2 : Fin k0_t2_loop.trips, ∀ a, (k0_off126 k0_t2) a + S1x1x1x16.size a ≤ S4x4x4x1024.size a
  k0_off127_inb : ∀ k0_t2 : Fin k0_t2_loop.trips, ∀ a, (k0_off127 k0_t2) a + S1x1x1x16.size a ≤ S2x4x4x1024.size a
  k0_off128_inb : ∀ k0_t2 : Fin k0_t2_loop.trips, ∀ a, (k0_off128 k0_t2) a + S1x1x1x16.size a ≤ S4x4x4x1024.size a
  k0_off129_inb : ∀ k0_t2 : Fin k0_t2_loop.trips, ∀ a, (k0_off129 k0_t2) a + S1x1x1x16.size a ≤ S2x4x4x1024.size a
  k0_off130_inb : ∀ k0_t2 : Fin k0_t2_loop.trips, ∀ a, (k0_off130 k0_t2) a + S1x1x1x16.size a ≤ S4x4x4x1024.size a
  k0_off131_inb : ∀ k0_t2 : Fin k0_t2_loop.trips, ∀ a, (k0_off131 k0_t2) a + S1x1x1x16.size a ≤ S2x4x4x1024.size a
  k0_off132_inb : ∀ k0_t2 : Fin k0_t2_loop.trips, ∀ a, (k0_off132 k0_t2) a + S1x1x1x16.size a ≤ S4x4x4x1024.size a
  k0_off133_inb : ∀ k0_t2 : Fin k0_t2_loop.trips, ∀ a, (k0_off133 k0_t2) a + S1x1x1x16.size a ≤ S2x4x4x1024.size a
  k0_off134_inb : ∀ k0_t2 : Fin k0_t2_loop.trips, ∀ a, (k0_off134 k0_t2) a + S1x1x1x16.size a ≤ S4x4x4x1024.size a
  k0_off135_inb : ∀ k0_t2 : Fin k0_t2_loop.trips, ∀ a, (k0_off135 k0_t2) a + S1x1x1x16.size a ≤ S2x4x4x1024.size a
  k0_off136_inb : ∀ k0_t2 : Fin k0_t2_loop.trips, ∀ a, (k0_off136 k0_t2) a + S1x1x1x16.size a ≤ S4x4x4x1024.size a
  k0_off137_inb : ∀ k0_t2 : Fin k0_t2_loop.trips, ∀ a, (k0_off137 k0_t2) a + S1x1x1x16.size a ≤ S2x4x4x1024.size a
  k0_off138_inb : ∀ k0_t2 : Fin k0_t2_loop.trips, ∀ a, (k0_off138 k0_t2) a + S1x1x1x16.size a ≤ S4x4x4x1024.size a
  k0_off139_inb : ∀ k0_t2 : Fin k0_t2_loop.trips, ∀ a, (k0_off139 k0_t2) a + S1x1x1x16.size a ≤ S2x4x4x1024.size a
  k0_off140_inb : ∀ k0_t2 : Fin k0_t2_loop.trips, ∀ a, (k0_off140 k0_t2) a + S1x1x1x16.size a ≤ S4x4x4x1024.size a
  k0_off141_inb : ∀ k0_t2 : Fin k0_t2_loop.trips, ∀ a, (k0_off141 k0_t2) a + S1x1x1x16.size a ≤ S2x4x4x1024.size a
  k0_off142_inb : ∀ k0_t2 : Fin k0_t2_loop.trips, ∀ a, (k0_off142 k0_t2) a + S1x1x1x16.size a ≤ S4x4x4x1024.size a
  k0_off143_inb : ∀ k0_t2 : Fin k0_t2_loop.trips, ∀ a, (k0_off143 k0_t2) a + S1x1x1x16.size a ≤ S2x4x4x1024.size a
  k0_off144_inb : ∀ k0_t2 : Fin k0_t2_loop.trips, ∀ a, (k0_off144 k0_t2) a + S1x1x1x16.size a ≤ S4x4x4x1024.size a
  k0_off145_inb : ∀ k0_t2 : Fin k0_t2_loop.trips, ∀ a, (k0_off145 k0_t2) a + S1x1x1x16.size a ≤ S2x4x4x1024.size a
  k0_off146_inb : ∀ k0_t2 : Fin k0_t2_loop.trips, ∀ a, (k0_off146 k0_t2) a + S1x1x1x16.size a ≤ S4x4x4x1024.size a
  k0_off147_inb : ∀ k0_t2 : Fin k0_t2_loop.trips, ∀ a, (k0_off147 k0_t2) a + S1x1x1x16.size a ≤ S2x4x4x1024.size a
  k0_off148_inb : ∀ k0_t2 : Fin k0_t2_loop.trips, ∀ a, (k0_off148 k0_t2) a + S1x1x1x16.size a ≤ S4x4x4x1024.size a
  k0_off149_inb : ∀ k0_t2 : Fin k0_t2_loop.trips, ∀ a, (k0_off149 k0_t2) a + S1x1x1x16.size a ≤ S2x4x4x1024.size a
  k0_off150_inb : ∀ k0_t2 : Fin k0_t2_loop.trips, ∀ a, (k0_off150 k0_t2) a + S1x1x1x16.size a ≤ S4x4x4x1024.size a
  k0_off151_inb : ∀ k0_t2 : Fin k0_t2_loop.trips, ∀ a, (k0_off151 k0_t2) a + S1x1x1x16.size a ≤ S2x4x4x1024.size a
  k0_off152_inb : ∀ k0_t2 : Fin k0_t2_loop.trips, ∀ a, (k0_off152 k0_t2) a + S1x1x1x16.size a ≤ S4x4x4x1024.size a
  k0_off153_inb : ∀ k0_t2 : Fin k0_t2_loop.trips, ∀ a, (k0_off153 k0_t2) a + S1x1x1x16.size a ≤ S2x4x4x1024.size a
  k0_off154_inb : ∀ k0_t2 : Fin k0_t2_loop.trips, ∀ a, (k0_off154 k0_t2) a + S1x1x1x16.size a ≤ S4x4x4x1024.size a
  k0_off155_inb : ∀ k0_t2 : Fin k0_t2_loop.trips, ∀ a, (k0_off155 k0_t2) a + S1x1x1x16.size a ≤ S2x4x4x1024.size a
  k0_off156_inb : ∀ k0_t2 : Fin k0_t2_loop.trips, ∀ a, (k0_off156 k0_t2) a + S1x1x1x16.size a ≤ S4x4x4x1024.size a
  k0_off157_inb : ∀ k0_t2 : Fin k0_t2_loop.trips, ∀ a, (k0_off157 k0_t2) a + S1x1x1x16.size a ≤ S2x4x4x1024.size a
  k0_off158_inb : ∀ k0_t2 : Fin k0_t2_loop.trips, ∀ a, (k0_off158 k0_t2) a + S1x1x1x16.size a ≤ S4x4x4x1024.size a
  k0_off159_inb : ∀ k0_t2 : Fin k0_t2_loop.trips, ∀ a, (k0_off159 k0_t2) a + S1x1x1x16.size a ≤ S2x4x4x1024.size a
  k0_off160_inb : ∀ k0_t2 : Fin k0_t2_loop.trips, ∀ a, (k0_off160 k0_t2) a + S1x1x1x16.size a ≤ S4x4x4x1024.size a
  k0_off161_inb : ∀ k0_t2 : Fin k0_t2_loop.trips, ∀ a, (k0_off161 k0_t2) a + S1x1x1x16.size a ≤ S2x4x4x1024.size a
  k0_off162_inb : ∀ k0_t2 : Fin k0_t2_loop.trips, ∀ a, (k0_off162 k0_t2) a + S1x1x1x16.size a ≤ S4x4x4x1024.size a
  k0_off163_inb : ∀ k0_t2 : Fin k0_t2_loop.trips, ∀ a, (k0_off163 k0_t2) a + S1x1x1x16.size a ≤ S2x4x4x1024.size a
  k0_off164_inb : ∀ k0_t2 : Fin k0_t2_loop.trips, ∀ a, (k0_off164 k0_t2) a + S1x1x1x16.size a ≤ S4x4x4x1024.size a
  k0_off165_inb : ∀ k0_t2 : Fin k0_t2_loop.trips, ∀ a, (k0_off165 k0_t2) a + S1x1x1x16.size a ≤ S2x4x4x1024.size a
  k0_off166_inb : ∀ k0_t2 : Fin k0_t2_loop.trips, ∀ a, (k0_off166 k0_t2) a + S1x1x1x16.size a ≤ S4x4x4x1024.size a
  k0_off167_inb : ∀ k0_t2 : Fin k0_t2_loop.trips, ∀ a, (k0_off167 k0_t2) a + S1x1x1x16.size a ≤ S2x4x4x1024.size a
  k0_off168_inb : ∀ k0_t2 : Fin k0_t2_loop.trips, ∀ a, (k0_off168 k0_t2) a + S1x1x1x16.size a ≤ S4x4x4x1024.size a
  k0_off169_inb : ∀ k0_t2 : Fin k0_t2_loop.trips, ∀ a, (k0_off169 k0_t2) a + S1x1x1x16.size a ≤ S2x4x4x1024.size a
  k0_off170_inb : ∀ k0_t2 : Fin k0_t2_loop.trips, ∀ a, (k0_off170 k0_t2) a + S1x1x1x16.size a ≤ S4x4x4x1024.size a
  k0_off171_inb : ∀ k0_t2 : Fin k0_t2_loop.trips, ∀ a, (k0_off171 k0_t2) a + S1x1x1x16.size a ≤ S2x4x4x1024.size a
  k0_off172_inb : ∀ k0_t2 : Fin k0_t2_loop.trips, ∀ a, (k0_off172 k0_t2) a + S1x1x1x16.size a ≤ S4x4x4x1024.size a
  k0_off173_inb : ∀ k0_t2 : Fin k0_t2_loop.trips, ∀ a, (k0_off173 k0_t2) a + S1x1x1x16.size a ≤ S2x4x4x1024.size a
  k0_off174_inb : ∀ k0_t2 : Fin k0_t2_loop.trips, ∀ a, (k0_off174 k0_t2) a + S1x1x1x16.size a ≤ S4x4x4x1024.size a
  k0_off175_inb : ∀ k0_t2 : Fin k0_t2_loop.trips, ∀ a, (k0_off175 k0_t2) a + S1x1x1x16.size a ≤ S2x4x4x1024.size a
  k0_off176_inb : ∀ k0_t2 : Fin k0_t2_loop.trips, ∀ a, (k0_off176 k0_t2) a + S1x1x1x16.size a ≤ S4x4x4x1024.size a
  k0_off177_inb : ∀ k0_t2 : Fin k0_t2_loop.trips, ∀ a, (k0_off177 k0_t2) a + S1x1x1x16.size a ≤ S2x4x4x1024.size a
  k0_off178_inb : ∀ k0_t2 : Fin k0_t2_loop.trips, ∀ a, (k0_off178 k0_t2) a + S1x1x1x16.size a ≤ S4x4x4x1024.size a
  k0_off179_inb : ∀ k0_t2 : Fin k0_t2_loop.trips, ∀ a, (k0_off179 k0_t2) a + S1x1x1x16.size a ≤ S2x4x4x1024.size a
  k0_off180_inb : ∀ k0_t2 : Fin k0_t2_loop.trips, ∀ a, (k0_off180 k0_t2) a + S1x1x1x16.size a ≤ S4x4x4x1024.size a
  k0_off181_inb : ∀ k0_t2 : Fin k0_t2_loop.trips, ∀ a, (k0_off181 k0_t2) a + S1x1x1x16.size a ≤ S2x4x4x1024.size a
  k0_off182_inb : ∀ k0_t2 : Fin k0_t2_loop.trips, ∀ a, (k0_off182 k0_t2) a + S1x1x1x16.size a ≤ S4x4x4x1024.size a
  k0_off183_inb : ∀ k0_t2 : Fin k0_t2_loop.trips, ∀ a, (k0_off183 k0_t2) a + S1x1x1x16.size a ≤ S2x4x4x1024.size a
  k0_off184_inb : ∀ k0_t2 : Fin k0_t2_loop.trips, ∀ a, (k0_off184 k0_t2) a + S1x1x1x16.size a ≤ S4x4x4x1024.size a
  k0_off185_inb : ∀ k0_t2 : Fin k0_t2_loop.trips, ∀ a, (k0_off185 k0_t2) a + S1x1x1x16.size a ≤ S2x4x4x1024.size a
  k0_off186_inb : ∀ k0_t2 : Fin k0_t2_loop.trips, ∀ a, (k0_off186 k0_t2) a + S1x1x1x16.size a ≤ S4x4x4x1024.size a
  k0_off187_inb : ∀ k0_t2 : Fin k0_t2_loop.trips, ∀ a, (k0_off187 k0_t2) a + S1x1x1x16.size a ≤ S2x4x4x1024.size a
  k0_off188_inb : ∀ k0_t2 : Fin k0_t2_loop.trips, ∀ a, (k0_off188 k0_t2) a + S1x1x1x16.size a ≤ S4x4x4x1024.size a
  k0_off189_inb : ∀ k0_t2 : Fin k0_t2_loop.trips, ∀ a, (k0_off189 k0_t2) a + S1x1x1x16.size a ≤ S2x4x4x1024.size a
  k0_off190_inb : ∀ k0_t2 : Fin k0_t2_loop.trips, ∀ a, (k0_off190 k0_t2) a + S1x1x1x16.size a ≤ S4x4x4x1024.size a
  k0_off191_inb : ∀ k0_t2 : Fin k0_t2_loop.trips, ∀ a, (k0_off191 k0_t2) a + S1x1x1x16.size a ≤ S2x4x4x1024.size a
  k0_off192_inb : ∀ k0_t2 : Fin k0_t2_loop.trips, ∀ a, (k0_off192 k0_t2) a + S1x1x1x16.size a ≤ S4x4x4x1024.size a
  k0_off193_inb : ∀ k0_t2 : Fin k0_t2_loop.trips, ∀ a, (k0_off193 k0_t2) a + S1x1x1x16.size a ≤ S2x4x4x1024.size a
  k0_off194_inb : ∀ k0_t2 : Fin k0_t2_loop.trips, ∀ a, (k0_off194 k0_t2) a + S1x1x1x16.size a ≤ S4x4x4x1024.size a
  k0_off195_inb : ∀ k0_t2 : Fin k0_t2_loop.trips, ∀ a, (k0_off195 k0_t2) a + S1x1x1x16.size a ≤ S2x4x4x1024.size a
  k0_off196_inb : ∀ k0_t2 : Fin k0_t2_loop.trips, ∀ a, (k0_off196 k0_t2) a + S1x1x1x16.size a ≤ S4x4x4x1024.size a
  k0_off197_inb : ∀ k0_t2 : Fin k0_t2_loop.trips, ∀ a, (k0_off197 k0_t2) a + S1x1x1x16.size a ≤ S2x4x4x1024.size a
  k0_off198_inb : ∀ k0_t2 : Fin k0_t2_loop.trips, ∀ a, (k0_off198 k0_t2) a + S1x1x1x16.size a ≤ S4x4x4x1024.size a
  k0_off199_inb : ∀ k0_t2 : Fin k0_t2_loop.trips, ∀ a, (k0_off199 k0_t2) a + S1x1x1x16.size a ≤ S2x4x4x1024.size a
  k0_off200_inb : ∀ k0_t2 : Fin k0_t2_loop.trips, ∀ a, (k0_off200 k0_t2) a + S1x1x1x16.size a ≤ S4x4x4x1024.size a
  k0_off201_inb : ∀ k0_t2 : Fin k0_t2_loop.trips, ∀ a, (k0_off201 k0_t2) a + S1x1x1x16.size a ≤ S2x4x4x1024.size a
  k0_off202_inb : ∀ k0_t2 : Fin k0_t2_loop.trips, ∀ a, (k0_off202 k0_t2) a + S1x1x1x16.size a ≤ S4x4x4x1024.size a
  k0_off203_inb : ∀ k0_t2 : Fin k0_t2_loop.trips, ∀ a, (k0_off203 k0_t2) a + S1x1x1x16.size a ≤ S2x4x4x1024.size a
  k0_off204_inb : ∀ k0_t2 : Fin k0_t2_loop.trips, ∀ a, (k0_off204 k0_t2) a + S1x1x1x16.size a ≤ S4x4x4x1024.size a
  k0_off205_inb : ∀ k0_t2 : Fin k0_t2_loop.trips, ∀ a, (k0_off205 k0_t2) a + S1x1x1x16.size a ≤ S2x4x4x1024.size a
  k0_off206_inb : ∀ k0_t2 : Fin k0_t2_loop.trips, ∀ a, (k0_off206 k0_t2) a + S1x1x1x16.size a ≤ S4x4x4x1024.size a
  k0_off207_inb : ∀ k0_t2 : Fin k0_t2_loop.trips, ∀ a, (k0_off207 k0_t2) a + S1x1x1x16.size a ≤ S2x4x4x1024.size a
  k0_off208_inb : ∀ k0_t2 : Fin k0_t2_loop.trips, ∀ a, (k0_off208 k0_t2) a + S1x1x1x16.size a ≤ S4x4x4x1024.size a
  k0_off209_inb : ∀ k0_t2 : Fin k0_t2_loop.trips, ∀ a, (k0_off209 k0_t2) a + S1x1x1x16.size a ≤ S2x4x4x1024.size a
  k0_off210_inb : ∀ k0_t2 : Fin k0_t2_loop.trips, ∀ a, (k0_off210 k0_t2) a + S1x1x1x16.size a ≤ S4x4x4x1024.size a
  k0_off211_inb : ∀ k0_t2 : Fin k0_t2_loop.trips, ∀ a, (k0_off211 k0_t2) a + S1x1x1x16.size a ≤ S2x4x4x1024.size a
  k0_off212_inb : ∀ k0_t2 : Fin k0_t2_loop.trips, ∀ a, (k0_off212 k0_t2) a + S1x1x1x16.size a ≤ S4x4x4x1024.size a
  k0_off213_inb : ∀ k0_t2 : Fin k0_t2_loop.trips, ∀ a, (k0_off213 k0_t2) a + S1x1x1x16.size a ≤ S2x4x4x1024.size a
  k0_off214_inb : ∀ k0_t2 : Fin k0_t2_loop.trips, ∀ a, (k0_off214 k0_t2) a + S1x1x1x16.size a ≤ S4x4x4x1024.size a
  k0_off215_inb : ∀ k0_t2 : Fin k0_t2_loop.trips, ∀ a, (k0_off215 k0_t2) a + S1x1x1x16.size a ≤ S2x4x4x1024.size a
  k0_off216_inb : ∀ k0_t2 : Fin k0_t2_loop.trips, ∀ a, (k0_off216 k0_t2) a + S1x1x1x16.size a ≤ S4x4x4x1024.size a
  k0_off217_inb : ∀ k0_t2 : Fin k0_t2_loop.trips, ∀ a, (k0_off217 k0_t2) a + S1x1x1x16.size a ≤ S2x4x4x1024.size a
  k0_off218_inb : ∀ k0_t2 : Fin k0_t2_loop.trips, ∀ a, (k0_off218 k0_t2) a + S1x1x1x16.size a ≤ S4x4x4x1024.size a
  k0_off219_inb : ∀ k0_t2 : Fin k0_t2_loop.trips, ∀ a, (k0_off219 k0_t2) a + S1x1x1x16.size a ≤ S2x4x4x1024.size a
  k0_off220_inb : ∀ k0_t2 : Fin k0_t2_loop.trips, ∀ a, (k0_off220 k0_t2) a + S1x1x1x16.size a ≤ S4x4x4x1024.size a
  k0_off221_inb : ∀ k0_t2 : Fin k0_t2_loop.trips, ∀ a, (k0_off221 k0_t2) a + S1x1x1x16.size a ≤ S2x4x4x1024.size a
  k0_off222_inb : ∀ k0_t2 : Fin k0_t2_loop.trips, ∀ a, (k0_off222 k0_t2) a + S1x1x1x16.size a ≤ S4x4x4x1024.size a
  k0_off223_inb : ∀ k0_t2 : Fin k0_t2_loop.trips, ∀ a, (k0_off223 k0_t2) a + S1x1x1x16.size a ≤ S2x4x4x1024.size a
  k0_off224_inb : ∀ k0_t2 : Fin k0_t2_loop.trips, ∀ a, (k0_off224 k0_t2) a + S1x1x1x16.size a ≤ S4x4x4x1024.size a
  k0_off225_inb : ∀ k0_t2 : Fin k0_t2_loop.trips, ∀ a, (k0_off225 k0_t2) a + S1x1x1x16.size a ≤ S2x4x4x1024.size a
  k0_off226_inb : ∀ k0_t2 : Fin k0_t2_loop.trips, ∀ a, (k0_off226 k0_t2) a + S1x1x1x16.size a ≤ S4x4x4x1024.size a
  k0_off227_inb : ∀ k0_t2 : Fin k0_t2_loop.trips, ∀ a, (k0_off227 k0_t2) a + S1x1x1x16.size a ≤ S2x4x4x1024.size a
  k0_off228_inb : ∀ k0_t2 : Fin k0_t2_loop.trips, ∀ a, (k0_off228 k0_t2) a + S1x1x1x16.size a ≤ S4x4x4x1024.size a
  k0_off229_inb : ∀ k0_t2 : Fin k0_t2_loop.trips, ∀ a, (k0_off229 k0_t2) a + S1x1x1x16.size a ≤ S2x4x4x1024.size a
  k0_off230_inb : ∀ k0_t2 : Fin k0_t2_loop.trips, ∀ a, (k0_off230 k0_t2) a + S1x1x1x16.size a ≤ S4x4x4x1024.size a
  k0_off231_inb : ∀ k0_t2 : Fin k0_t2_loop.trips, ∀ a, (k0_off231 k0_t2) a + S1x1x1x16.size a ≤ S2x4x4x1024.size a
  k0_off232_inb : ∀ k0_t2 : Fin k0_t2_loop.trips, ∀ a, (k0_off232 k0_t2) a + S1x1x1x16.size a ≤ S4x4x4x1024.size a
  k0_off233_inb : ∀ k0_t2 : Fin k0_t2_loop.trips, ∀ a, (k0_off233 k0_t2) a + S1x1x1x16.size a ≤ S2x4x4x1024.size a
  k0_off234_inb : ∀ k0_t2 : Fin k0_t2_loop.trips, ∀ a, (k0_off234 k0_t2) a + S1x1x1x16.size a ≤ S4x4x4x1024.size a
  k0_off235_inb : ∀ k0_t2 : Fin k0_t2_loop.trips, ∀ a, (k0_off235 k0_t2) a + S1x1x1x16.size a ≤ S2x4x4x1024.size a
  k0_off236_inb : ∀ k0_t2 : Fin k0_t2_loop.trips, ∀ a, (k0_off236 k0_t2) a + S1x1x1x16.size a ≤ S4x4x4x1024.size a
  k0_off237_inb : ∀ k0_t2 : Fin k0_t2_loop.trips, ∀ a, (k0_off237 k0_t2) a + S1x1x1x16.size a ≤ S2x4x4x1024.size a
  k0_off238_inb : ∀ k0_t2 : Fin k0_t2_loop.trips, ∀ a, (k0_off238 k0_t2) a + S1x1x1x16.size a ≤ S4x4x4x1024.size a
  k0_off239_inb : ∀ k0_t2 : Fin k0_t2_loop.trips, ∀ a, (k0_off239 k0_t2) a + S1x1x1x16.size a ≤ S2x4x4x1024.size a
  k0_off240_inb : ∀ k0_t2 : Fin k0_t2_loop.trips, ∀ a, (k0_off240 k0_t2) a + S1x1x1x16.size a ≤ S4x4x4x1024.size a
  k0_off241_inb : ∀ k0_t2 : Fin k0_t2_loop.trips, ∀ a, (k0_off241 k0_t2) a + S1x1x1x16.size a ≤ S2x4x4x1024.size a
  k0_off242_inb : ∀ k0_t2 : Fin k0_t2_loop.trips, ∀ a, (k0_off242 k0_t2) a + S1x1x1x16.size a ≤ S4x4x4x1024.size a
  k0_off243_inb : ∀ k0_t2 : Fin k0_t2_loop.trips, ∀ a, (k0_off243 k0_t2) a + S1x1x1x16.size a ≤ S2x4x4x1024.size a
  k0_off244_inb : ∀ k0_t2 : Fin k0_t2_loop.trips, ∀ a, (k0_off244 k0_t2) a + S1x1x1x16.size a ≤ S4x4x4x1024.size a
  k0_off245_inb : ∀ k0_t2 : Fin k0_t2_loop.trips, ∀ a, (k0_off245 k0_t2) a + S1x1x1x16.size a ≤ S2x4x4x1024.size a
  k0_off246_inb : ∀ k0_t2 : Fin k0_t2_loop.trips, ∀ a, (k0_off246 k0_t2) a + S1x1x1x16.size a ≤ S4x4x4x1024.size a
  k0_off247_inb : ∀ k0_t2 : Fin k0_t2_loop.trips, ∀ a, (k0_off247 k0_t2) a + S1x1x1x16.size a ≤ S2x4x4x1024.size a
  k0_off248_inb : ∀ k0_t2 : Fin k0_t2_loop.trips, ∀ a, (k0_off248 k0_t2) a + S1x1x1x16.size a ≤ S4x4x4x1024.size a
  k0_off249_inb : ∀ k0_t2 : Fin k0_t2_loop.trips, ∀ a, (k0_off249 k0_t2) a + S1x1x1x16.size a ≤ S2x4x4x1024.size a
  k0_off250_inb : ∀ k0_t2 : Fin k0_t2_loop.trips, ∀ a, (k0_off250 k0_t2) a + S1x1x1x16.size a ≤ S4x4x4x1024.size a
  k0_off251_inb : ∀ k0_t2 : Fin k0_t2_loop.trips, ∀ a, (k0_off251 k0_t2) a + S1x1x1x16.size a ≤ S2x4x4x1024.size a
  k0_off252_inb : ∀ k0_t2 : Fin k0_t2_loop.trips, ∀ a, (k0_off252 k0_t2) a + S1x1x1x16.size a ≤ S4x4x4x1024.size a
  k0_off253_inb : ∀ k0_t2 : Fin k0_t2_loop.trips, ∀ a, (k0_off253 k0_t2) a + S1x1x1x16.size a ≤ S2x4x4x1024.size a
  k0_off254_inb : ∀ k0_t2 : Fin k0_t2_loop.trips, ∀ a, (k0_off254 k0_t2) a + S1x1x1x16.size a ≤ S4x4x4x1024.size a
  k0_off255_inb : ∀ k0_t2 : Fin k0_t2_loop.trips, ∀ a, (k0_off255 k0_t2) a + S1x1x1x16.size a ≤ S2x4x4x1024.size a
  k0_off256_inb : ∀ k0_t2 : Fin k0_t2_loop.trips, ∀ a, (k0_off256 k0_t2) a + S1x1x1x16.size a ≤ S4x4x4x1024.size a
  k0_off257_inb : ∀ k0_t2 : Fin k0_t2_loop.trips, ∀ a, (k0_off257 k0_t2) a + S1x1x1x16.size a ≤ S2x4x4x1024.size a
  k0_off258_inb : ∀ k0_t2 : Fin k0_t2_loop.trips, ∀ a, (k0_off258 k0_t2) a + S1x1x1x16.size a ≤ S4x4x4x1024.size a
  k0_off259_inb : ∀ k0_t2 : Fin k0_t2_loop.trips, ∀ a, (k0_off259 k0_t2) a + S1x1x1x16.size a ≤ S2x4x4x1024.size a
  k0_off260_inb : ∀ k0_t2 : Fin k0_t2_loop.trips, ∀ a, (k0_off260 k0_t2) a + S1x1x1x16.size a ≤ S4x4x4x1024.size a
  k0_off261_inb : ∀ k0_t2 : Fin k0_t2_loop.trips, ∀ a, (k0_off261 k0_t2) a + S1x1x1x16.size a ≤ S2x4x4x1024.size a
  k0_off262_inb : ∀ k0_t2 : Fin k0_t2_loop.trips, ∀ a, (k0_off262 k0_t2) a + S1x1x1x16.size a ≤ S4x4x4x1024.size a
  k0_off263_inb : ∀ k0_t2 : Fin k0_t2_loop.trips, ∀ a, (k0_off263 k0_t2) a + S1x1x1x16.size a ≤ S2x4x4x1024.size a
  k0_off264_inb : ∀ k0_t2 : Fin k0_t2_loop.trips, ∀ a, (k0_off264 k0_t2) a + S1x1x1x16.size a ≤ S4x4x4x1024.size a
  k0_off265_inb : ∀ k0_t2 : Fin k0_t2_loop.trips, ∀ a, (k0_off265 k0_t2) a + S1x1x1x16.size a ≤ S2x4x4x1024.size a
  k0_off266_inb : ∀ k0_t2 : Fin k0_t2_loop.trips, ∀ a, (k0_off266 k0_t2) a + S1x1x1x16.size a ≤ S4x4x4x1024.size a
  k0_off267_inb : ∀ k0_t2 : Fin k0_t2_loop.trips, ∀ a, (k0_off267 k0_t2) a + S1x1x1x16.size a ≤ S2x4x4x1024.size a
  k0_off268_inb : ∀ k0_t2 : Fin k0_t2_loop.trips, ∀ a, (k0_off268 k0_t2) a + S1x1x1x16.size a ≤ S4x4x4x1024.size a
  k0_off269_inb : ∀ k0_t2 : Fin k0_t2_loop.trips, ∀ a, (k0_off269 k0_t2) a + S1x1x1x16.size a ≤ S2x4x4x1024.size a
  k0_off270_inb : ∀ k0_t2 : Fin k0_t2_loop.trips, ∀ a, (k0_off270 k0_t2) a + S1x1x1x16.size a ≤ S4x4x4x1024.size a
  k0_off271_inb : ∀ k0_t2 : Fin k0_t2_loop.trips, ∀ a, (k0_off271 k0_t2) a + S1x1x1x16.size a ≤ S2x4x4x1024.size a
  k0_off272_inb : ∀ k0_t2 : Fin k0_t2_loop.trips, ∀ a, (k0_off272 k0_t2) a + S1x1x1x16.size a ≤ S4x4x4x1024.size a
  k0_off273_inb : ∀ k0_t2 : Fin k0_t2_loop.trips, ∀ a, (k0_off273 k0_t2) a + S1x1x1x16.size a ≤ S2x4x4x1024.size a
  k0_off274_inb : ∀ k0_t2 : Fin k0_t2_loop.trips, ∀ a, (k0_off274 k0_t2) a + S1x1x1x16.size a ≤ S4x4x4x1024.size a
  k0_off275_inb : ∀ k0_t2 : Fin k0_t2_loop.trips, ∀ a, (k0_off275 k0_t2) a + S1x1x1x16.size a ≤ S2x4x4x1024.size a
  k0_off276_inb : ∀ k0_t2 : Fin k0_t2_loop.trips, ∀ a, (k0_off276 k0_t2) a + S1x1x1x16.size a ≤ S4x4x4x1024.size a
  k0_off277_inb : ∀ k0_t2 : Fin k0_t2_loop.trips, ∀ a, (k0_off277 k0_t2) a + S1x1x1x16.size a ≤ S2x4x4x1024.size a
  k0_off278_inb : ∀ k0_t2 : Fin k0_t2_loop.trips, ∀ a, (k0_off278 k0_t2) a + S1x1x1x16.size a ≤ S4x4x4x1024.size a
  k0_off279_inb : ∀ k0_t2 : Fin k0_t2_loop.trips, ∀ a, (k0_off279 k0_t2) a + S1x1x1x16.size a ≤ S2x4x4x1024.size a
  k0_off280_inb : ∀ k0_t2 : Fin k0_t2_loop.trips, ∀ a, (k0_off280 k0_t2) a + S1x1x1x16.size a ≤ S4x4x4x1024.size a
  k0_off281_inb : ∀ k0_t2 : Fin k0_t2_loop.trips, ∀ a, (k0_off281 k0_t2) a + S1x1x1x16.size a ≤ S2x4x4x1024.size a
  k0_off282_inb : ∀ k0_t2 : Fin k0_t2_loop.trips, ∀ a, (k0_off282 k0_t2) a + S1x1x1x16.size a ≤ S4x4x4x1024.size a
  k0_off283_inb : ∀ k0_t2 : Fin k0_t2_loop.trips, ∀ a, (k0_off283 k0_t2) a + S1x1x1x16.size a ≤ S2x4x4x1024.size a
  k0_off284_inb : ∀ k0_t2 : Fin k0_t2_loop.trips, ∀ a, (k0_off284 k0_t2) a + S1x1x1x16.size a ≤ S4x4x4x1024.size a
  k0_off285_inb : ∀ k0_t2 : Fin k0_t2_loop.trips, ∀ a, (k0_off285 k0_t2) a + S1x1x1x16.size a ≤ S2x4x4x1024.size a
  k0_off286_inb : ∀ k0_t2 : Fin k0_t2_loop.trips, ∀ a, (k0_off286 k0_t2) a + S1x1x1x16.size a ≤ S4x4x4x1024.size a
  k0_off287_inb : ∀ k0_t2 : Fin k0_t2_loop.trips, ∀ a, (k0_off287 k0_t2) a + S1x1x1x16.size a ≤ S2x4x4x1024.size a
  k0_off288_inb : ∀ k0_t2 : Fin k0_t2_loop.trips, ∀ a, (k0_off288 k0_t2) a + S1x1x1x16.size a ≤ S4x4x4x1024.size a
  k0_off289_inb : ∀ k0_t2 : Fin k0_t2_loop.trips, ∀ a, (k0_off289 k0_t2) a + S1x1x1x16.size a ≤ S2x4x4x1024.size a
  k0_off290_inb : ∀ k0_t2 : Fin k0_t2_loop.trips, ∀ a, (k0_off290 k0_t2) a + S1x1x1x16.size a ≤ S4x4x4x1024.size a
  k0_off291_inb : ∀ k0_t2 : Fin k0_t2_loop.trips, ∀ a, (k0_off291 k0_t2) a + S1x1x1x16.size a ≤ S2x4x4x1024.size a
  k0_off292_inb : ∀ k0_t2 : Fin k0_t2_loop.trips, ∀ a, (k0_off292 k0_t2) a + S1x1x1x16.size a ≤ S4x4x4x1024.size a
  k0_off293_inb : ∀ k0_t2 : Fin k0_t2_loop.trips, ∀ a, (k0_off293 k0_t2) a + S1x1x1x16.size a ≤ S2x4x4x1024.size a
  k0_off294_inb : ∀ k0_t2 : Fin k0_t2_loop.trips, ∀ a, (k0_off294 k0_t2) a + S1x1x1x16.size a ≤ S4x4x4x1024.size a
  k0_off295_inb : ∀ k0_t2 : Fin k0_t2_loop.trips, ∀ a, (k0_off295 k0_t2) a + S1x1x1x16.size a ≤ S2x4x4x1024.size a
  k0_off296_inb : ∀ k0_t2 : Fin k0_t2_loop.trips, ∀ a, (k0_off296 k0_t2) a + S1x1x1x16.size a ≤ S4x4x4x1024.size a
  k0_off297_inb : ∀ k0_t2 : Fin k0_t2_loop.trips, ∀ a, (k0_off297 k0_t2) a + S1x1x1x16.size a ≤ S2x4x4x1024.size a
  k0_off298_inb : ∀ k0_t2 : Fin k0_t2_loop.trips, ∀ a, (k0_off298 k0_t2) a + S1x1x1x16.size a ≤ S4x4x4x1024.size a
  k0_off299_inb : ∀ k0_t2 : Fin k0_t2_loop.trips, ∀ a, (k0_off299 k0_t2) a + S1x1x1x16.size a ≤ S2x4x4x1024.size a
  k0_off300_inb : ∀ k0_t2 : Fin k0_t2_loop.trips, ∀ a, (k0_off300 k0_t2) a + S1x1x1x16.size a ≤ S4x4x4x1024.size a
  k0_off301_inb : ∀ k0_t2 : Fin k0_t2_loop.trips, ∀ a, (k0_off301 k0_t2) a + S1x1x1x16.size a ≤ S2x4x4x1024.size a
  k0_off302_inb : ∀ k0_t2 : Fin k0_t2_loop.trips, ∀ a, (k0_off302 k0_t2) a + S1x1x1x16.size a ≤ S4x4x4x1024.size a
  k0_off303_inb : ∀ k0_t2 : Fin k0_t2_loop.trips, ∀ a, (k0_off303 k0_t2) a + S1x1x1x16.size a ≤ S2x4x4x1024.size a
  k0_off304_inb : ∀ k0_t2 : Fin k0_t2_loop.trips, ∀ a, (k0_off304 k0_t2) a + S1x1x1x16.size a ≤ S4x4x4x1024.size a
  k0_off305_inb : ∀ k0_t2 : Fin k0_t2_loop.trips, ∀ a, (k0_off305 k0_t2) a + S1x1x1x16.size a ≤ S2x4x4x1024.size a
  k0_off306_inb : ∀ k0_t2 : Fin k0_t2_loop.trips, ∀ a, (k0_off306 k0_t2) a + S1x1x1x16.size a ≤ S4x4x4x1024.size a
  k0_off307_inb : ∀ k0_t2 : Fin k0_t2_loop.trips, ∀ a, (k0_off307 k0_t2) a + S1x1x1x16.size a ≤ S2x4x4x1024.size a
  k0_off308_inb : ∀ k0_t2 : Fin k0_t2_loop.trips, ∀ a, (k0_off308 k0_t2) a + S1x1x16.size a ≤ S4x4x1024.size a
  k0_off309_inb : ∀ k0_t2 : Fin k0_t2_loop.trips, ∀ a, (k0_off309 k0_t2) a + S1x1x16.size a ≤ S4x4x1024.size a
  k0_off310_inb : ∀ k0_t2 : Fin k0_t2_loop.trips, ∀ a, (k0_off310 k0_t2) a + S1x1x16.size a ≤ S4x4x1024.size a
  k0_off311_inb : ∀ k0_t2 : Fin k0_t2_loop.trips, ∀ a, (k0_off311 k0_t2) a + S1x1x16.size a ≤ S4x4x1024.size a
  k0_off312_inb : ∀ k0_t2 : Fin k0_t2_loop.trips, ∀ a, (k0_off312 k0_t2) a + S1x1x16.size a ≤ S4x4x1024.size a
  k0_off313_inb : ∀ k0_t2 : Fin k0_t2_loop.trips, ∀ a, (k0_off313 k0_t2) a + S1x1x16.size a ≤ S4x4x1024.size a
  k0_off314_inb : ∀ k0_t2 : Fin k0_t2_loop.trips, ∀ a, (k0_off314 k0_t2) a + S1x1x16.size a ≤ S4x4x1024.size a
  k0_off315_inb : ∀ k0_t2 : Fin k0_t2_loop.trips, ∀ a, (k0_off315 k0_t2) a + S1x1x16.size a ≤ S4x4x1024.size a
  k0_off316_inb : ∀ k0_t2 : Fin k0_t2_loop.trips, ∀ a, (k0_off316 k0_t2) a + S1x1x16.size a ≤ S4x4x1024.size a
  k0_off317_inb : ∀ k0_t2 : Fin k0_t2_loop.trips, ∀ a, (k0_off317 k0_t2) a + S1x1x16.size a ≤ S4x4x1024.size a
  k0_off318_inb : ∀ k0_t2 : Fin k0_t2_loop.trips, ∀ a, (k0_off318 k0_t2) a + S1x1x16.size a ≤ S4x4x1024.size a
  k0_off319_inb : ∀ k0_t2 : Fin k0_t2_loop.trips, ∀ a, (k0_off319 k0_t2) a + S1x1x16.size a ≤ S4x4x1024.size a
  k0_off320_inb : ∀ k0_t2 : Fin k0_t2_loop.trips, ∀ a, (k0_off320 k0_t2) a + S1x1x16.size a ≤ S4x4x1024.size a
  k0_off321_inb : ∀ k0_t2 : Fin k0_t2_loop.trips, ∀ a, (k0_off321 k0_t2) a + S1x1x16.size a ≤ S4x4x1024.size a
  k0_off322_inb : ∀ k0_t2 : Fin k0_t2_loop.trips, ∀ a, (k0_off322 k0_t2) a + S1x1x16.size a ≤ S4x4x1024.size a
  k0_off323_inb : ∀ k0_t2 : Fin k0_t2_loop.trips, ∀ a, (k0_off323 k0_t2) a + S1x1x16.size a ≤ S4x4x1024.size a
  k0_off324_inb : ∀ k0_t2 : Fin k0_t2_loop.trips, ∀ a, (k0_off324 k0_t2) a + S1x1x16.size a ≤ S4x4x1024.size a
  k0_off325_inb : ∀ k0_t2 : Fin k0_t2_loop.trips, ∀ a, (k0_off325 k0_t2) a + S1x1x16.size a ≤ S4x4x1024.size a
  k0_off326_inb : ∀ k0_t2 : Fin k0_t2_loop.trips, ∀ a, (k0_off326 k0_t2) a + S1x1x16.size a ≤ S4x4x1024.size a
  k0_off327_inb : ∀ k0_t2 : Fin k0_t2_loop.trips, ∀ a, (k0_off327 k0_t2) a + S1x1x16.size a ≤ S4x4x1024.size a
  k0_off328_inb : ∀ k0_t2 : Fin k0_t2_loop.trips, ∀ a, (k0_off328 k0_t2) a + S1x1x16.size a ≤ S4x4x1024.size a
  k0_off329_inb : ∀ k0_t2 : Fin k0_t2_loop.trips, ∀ a, (k0_off329 k0_t2) a + S1x1x16.size a ≤ S4x4x1024.size a
  k0_off330_inb : ∀ k0_t2 : Fin k0_t2_loop.trips, ∀ a, (k0_off330 k0_t2) a + S1x1x16.size a ≤ S4x4x1024.size a
  k0_off331_inb : ∀ k0_t2 : Fin k0_t2_loop.trips, ∀ a, (k0_off331 k0_t2) a + S1x1x16.size a ≤ S4x4x1024.size a
  k0_off332_inb : ∀ k0_t2 : Fin k0_t2_loop.trips, ∀ a, (k0_off332 k0_t2) a + S1x1x16.size a ≤ S4x4x1024.size a
  k0_off333_inb : ∀ k0_t2 : Fin k0_t2_loop.trips, ∀ a, (k0_off333 k0_t2) a + S1x1x16.size a ≤ S4x4x1024.size a
  k0_off334_inb : ∀ k0_t2 : Fin k0_t2_loop.trips, ∀ a, (k0_off334 k0_t2) a + S1x1x16.size a ≤ S4x4x1024.size a
  k0_off335_inb : ∀ k0_t2 : Fin k0_t2_loop.trips, ∀ a, (k0_off335 k0_t2) a + S1x1x16.size a ≤ S4x4x1024.size a
  k0_off336_inb : ∀ k0_t2 : Fin k0_t2_loop.trips, ∀ a, (k0_off336 k0_t2) a + S1x1x16.size a ≤ S4x4x1024.size a
  k0_off337_inb : ∀ k0_t2 : Fin k0_t2_loop.trips, ∀ a, (k0_off337 k0_t2) a + S1x1x16.size a ≤ S4x4x1024.size a
  k0_off338_inb : ∀ k0_t2 : Fin k0_t2_loop.trips, ∀ a, (k0_off338 k0_t2) a + S1x1x16.size a ≤ S4x4x1024.size a
  k0_off339_inb : ∀ k0_t2 : Fin k0_t2_loop.trips, ∀ a, (k0_off339 k0_t2) a + S1x1x16.size a ≤ S4x4x1024.size a
  k0_off340_inb : ∀ k0_t2 : Fin k0_t2_loop.trips, ∀ a, (k0_off340 k0_t2) a + S1x1x1x16.size a ≤ S4x4x4x1024.size a
  k0_off341_inb : ∀ k0_t2 : Fin k0_t2_loop.trips, ∀ a, (k0_off341 k0_t2) a + S1x1x1x16.size a ≤ S2x4x4x1024.size a
  k0_off342_inb : ∀ k0_t2 : Fin k0_t2_loop.trips, ∀ a, (k0_off342 k0_t2) a + S1x1x1x16.size a ≤ S4x4x4x1024.size a
  k0_off343_inb : ∀ k0_t2 : Fin k0_t2_loop.trips, ∀ a, (k0_off343 k0_t2) a + S1x1x1x16.size a ≤ S2x4x4x1024.size a
  k0_off344_inb : ∀ k0_t2 : Fin k0_t2_loop.trips, ∀ a, (k0_off344 k0_t2) a + S1x1x1x16.size a ≤ S4x4x4x1024.size a
  k0_off345_inb : ∀ k0_t2 : Fin k0_t2_loop.trips, ∀ a, (k0_off345 k0_t2) a + S1x1x1x16.size a ≤ S2x4x4x1024.size a
  k0_off346_inb : ∀ k0_t2 : Fin k0_t2_loop.trips, ∀ a, (k0_off346 k0_t2) a + S1x1x1x16.size a ≤ S4x4x4x1024.size a
  k0_off347_inb : ∀ k0_t2 : Fin k0_t2_loop.trips, ∀ a, (k0_off347 k0_t2) a + S1x1x1x16.size a ≤ S2x4x4x1024.size a
  k0_off348_inb : ∀ k0_t2 : Fin k0_t2_loop.trips, ∀ a, (k0_off348 k0_t2) a + S1x1x1x16.size a ≤ S4x4x4x1024.size a
  k0_off349_inb : ∀ k0_t2 : Fin k0_t2_loop.trips, ∀ a, (k0_off349 k0_t2) a + S1x1x1x16.size a ≤ S2x4x4x1024.size a
  k0_off350_inb : ∀ k0_t2 : Fin k0_t2_loop.trips, ∀ a, (k0_off350 k0_t2) a + S1x1x1x16.size a ≤ S4x4x4x1024.size a
  k0_off351_inb : ∀ k0_t2 : Fin k0_t2_loop.trips, ∀ a, (k0_off351 k0_t2) a + S1x1x1x16.size a ≤ S2x4x4x1024.size a
  k0_off352_inb : ∀ k0_t2 : Fin k0_t2_loop.trips, ∀ a, (k0_off352 k0_t2) a + S1x1x1x16.size a ≤ S4x4x4x1024.size a
  k0_off353_inb : ∀ k0_t2 : Fin k0_t2_loop.trips, ∀ a, (k0_off353 k0_t2) a + S1x1x1x16.size a ≤ S2x4x4x1024.size a
  k0_off354_inb : ∀ k0_t2 : Fin k0_t2_loop.trips, ∀ a, (k0_off354 k0_t2) a + S1x1x1x16.size a ≤ S4x4x4x1024.size a
  k0_off355_inb : ∀ k0_t2 : Fin k0_t2_loop.trips, ∀ a, (k0_off355 k0_t2) a + S1x1x1x16.size a ≤ S2x4x4x1024.size a
  k0_off356_inb : ∀ k0_t2 : Fin k0_t2_loop.trips, ∀ a, (k0_off356 k0_t2) a + S1x1x1x16.size a ≤ S4x4x4x1024.size a
  k0_off357_inb : ∀ k0_t2 : Fin k0_t2_loop.trips, ∀ a, (k0_off357 k0_t2) a + S1x1x1x16.size a ≤ S2x4x4x1024.size a
  k0_off358_inb : ∀ k0_t2 : Fin k0_t2_loop.trips, ∀ a, (k0_off358 k0_t2) a + S1x1x1x16.size a ≤ S4x4x4x1024.size a
  k0_off359_inb : ∀ k0_t2 : Fin k0_t2_loop.trips, ∀ a, (k0_off359 k0_t2) a + S1x1x1x16.size a ≤ S2x4x4x1024.size a
  k0_off360_inb : ∀ k0_t2 : Fin k0_t2_loop.trips, ∀ a, (k0_off360 k0_t2) a + S1x1x1x16.size a ≤ S4x4x4x1024.size a
  k0_off361_inb : ∀ k0_t2 : Fin k0_t2_loop.trips, ∀ a, (k0_off361 k0_t2) a + S1x1x1x16.size a ≤ S2x4x4x1024.size a
  k0_off362_inb : ∀ k0_t2 : Fin k0_t2_loop.trips, ∀ a, (k0_off362 k0_t2) a + S1x1x1x16.size a ≤ S4x4x4x1024.size a
  k0_off363_inb : ∀ k0_t2 : Fin k0_t2_loop.trips, ∀ a, (k0_off363 k0_t2) a + S1x1x1x16.size a ≤ S2x4x4x1024.size a
  k0_off364_inb : ∀ k0_t2 : Fin k0_t2_loop.trips, ∀ a, (k0_off364 k0_t2) a + S1x1x1x16.size a ≤ S4x4x4x1024.size a
  k0_off365_inb : ∀ k0_t2 : Fin k0_t2_loop.trips, ∀ a, (k0_off365 k0_t2) a + S1x1x1x16.size a ≤ S2x4x4x1024.size a
  k0_off366_inb : ∀ k0_t2 : Fin k0_t2_loop.trips, ∀ a, (k0_off366 k0_t2) a + S1x1x1x16.size a ≤ S4x4x4x1024.size a
  k0_off367_inb : ∀ k0_t2 : Fin k0_t2_loop.trips, ∀ a, (k0_off367 k0_t2) a + S1x1x1x16.size a ≤ S2x4x4x1024.size a
  k0_off368_inb : ∀ k0_t2 : Fin k0_t2_loop.trips, ∀ a, (k0_off368 k0_t2) a + S1x1x1x16.size a ≤ S4x4x4x1024.size a
  k0_off369_inb : ∀ k0_t2 : Fin k0_t2_loop.trips, ∀ a, (k0_off369 k0_t2) a + S1x1x1x16.size a ≤ S2x4x4x1024.size a
  k0_off370_inb : ∀ k0_t2 : Fin k0_t2_loop.trips, ∀ a, (k0_off370 k0_t2) a + S1x1x1x16.size a ≤ S4x4x4x1024.size a
  k0_off371_inb : ∀ k0_t2 : Fin k0_t2_loop.trips, ∀ a, (k0_off371 k0_t2) a + S1x1x1x16.size a ≤ S2x4x4x1024.size a
  k0_off372_inb : ∀ k0_t2 : Fin k0_t2_loop.trips, ∀ a, (k0_off372 k0_t2) a + S1x1x1x16.size a ≤ S4x4x4x1024.size a
  k0_off373_inb : ∀ k0_t2 : Fin k0_t2_loop.trips, ∀ a, (k0_off373 k0_t2) a + S1x1x1x16.size a ≤ S2x4x4x1024.size a
  k0_off374_inb : ∀ k0_t2 : Fin k0_t2_loop.trips, ∀ a, (k0_off374 k0_t2) a + S1x1x1x16.size a ≤ S4x4x4x1024.size a
  k0_off375_inb : ∀ k0_t2 : Fin k0_t2_loop.trips, ∀ a, (k0_off375 k0_t2) a + S1x1x1x16.size a ≤ S2x4x4x1024.size a
  k0_off376_inb : ∀ k0_t2 : Fin k0_t2_loop.trips, ∀ a, (k0_off376 k0_t2) a + S1x1x1x16.size a ≤ S4x4x4x1024.size a
  k0_off377_inb : ∀ k0_t2 : Fin k0_t2_loop.trips, ∀ a, (k0_off377 k0_t2) a + S1x1x1x16.size a ≤ S2x4x4x1024.size a
  k0_off378_inb : ∀ k0_t2 : Fin k0_t2_loop.trips, ∀ a, (k0_off378 k0_t2) a + S1x1x1x16.size a ≤ S4x4x4x1024.size a
  k0_off379_inb : ∀ k0_t2 : Fin k0_t2_loop.trips, ∀ a, (k0_off379 k0_t2) a + S1x1x1x16.size a ≤ S2x4x4x1024.size a
  k0_off380_inb : ∀ k0_t2 : Fin k0_t2_loop.trips, ∀ a, (k0_off380 k0_t2) a + S1x1x1x16.size a ≤ S4x4x4x1024.size a
  k0_off381_inb : ∀ k0_t2 : Fin k0_t2_loop.trips, ∀ a, (k0_off381 k0_t2) a + S1x1x1x16.size a ≤ S2x4x4x1024.size a
  k0_off382_inb : ∀ k0_t2 : Fin k0_t2_loop.trips, ∀ a, (k0_off382 k0_t2) a + S1x1x1x16.size a ≤ S4x4x4x1024.size a
  k0_off383_inb : ∀ k0_t2 : Fin k0_t2_loop.trips, ∀ a, (k0_off383 k0_t2) a + S1x1x1x16.size a ≤ S2x4x4x1024.size a
  k0_off384_inb : ∀ k0_t2 : Fin k0_t2_loop.trips, ∀ a, (k0_off384 k0_t2) a + S1x1x1x16.size a ≤ S4x4x4x1024.size a
  k0_off385_inb : ∀ k0_t2 : Fin k0_t2_loop.trips, ∀ a, (k0_off385 k0_t2) a + S1x1x1x16.size a ≤ S2x4x4x1024.size a
  k0_off386_inb : ∀ k0_t2 : Fin k0_t2_loop.trips, ∀ a, (k0_off386 k0_t2) a + S1x1x1x16.size a ≤ S4x4x4x1024.size a
  k0_off387_inb : ∀ k0_t2 : Fin k0_t2_loop.trips, ∀ a, (k0_off387 k0_t2) a + S1x1x1x16.size a ≤ S2x4x4x1024.size a
  k0_off388_inb : ∀ k0_t2 : Fin k0_t2_loop.trips, ∀ a, (k0_off388 k0_t2) a + S1x1x1x16.size a ≤ S4x4x4x1024.size a
  k0_off389_inb : ∀ k0_t2 : Fin k0_t2_loop.trips, ∀ a, (k0_off389 k0_t2) a + S1x1x1x16.size a ≤ S2x4x4x1024.size a
  k0_off390_inb : ∀ k0_t2 : Fin k0_t2_loop.trips, ∀ a, (k0_off390 k0_t2) a + S1x1x1x16.size a ≤ S4x4x4x1024.size a
  k0_off391_inb : ∀ k0_t2 : Fin k0_t2_loop.trips, ∀ a, (k0_off391 k0_t2) a + S1x1x1x16.size a ≤ S2x4x4x1024.size a
  k0_off392_inb : ∀ k0_t2 : Fin k0_t2_loop.trips, ∀ a, (k0_off392 k0_t2) a + S1x1x1x16.size a ≤ S4x4x4x1024.size a
  k0_off393_inb : ∀ k0_t2 : Fin k0_t2_loop.trips, ∀ a, (k0_off393 k0_t2) a + S1x1x1x16.size a ≤ S2x4x4x1024.size a
  k0_off394_inb : ∀ k0_t2 : Fin k0_t2_loop.trips, ∀ a, (k0_off394 k0_t2) a + S1x1x1x16.size a ≤ S4x4x4x1024.size a
  k0_off395_inb : ∀ k0_t2 : Fin k0_t2_loop.trips, ∀ a, (k0_off395 k0_t2) a + S1x1x1x16.size a ≤ S2x4x4x1024.size a
  k0_off396_inb : ∀ k0_t2 : Fin k0_t2_loop.trips, ∀ a, (k0_off396 k0_t2) a + S1x1x1x16.size a ≤ S4x4x4x1024.size a
  k0_off397_inb : ∀ k0_t2 : Fin k0_t2_loop.trips, ∀ a, (k0_off397 k0_t2) a + S1x1x1x16.size a ≤ S2x4x4x1024.size a
  k0_off398_inb : ∀ k0_t2 : Fin k0_t2_loop.trips, ∀ a, (k0_off398 k0_t2) a + S1x1x1x16.size a ≤ S4x4x4x1024.size a
  k0_off399_inb : ∀ k0_t2 : Fin k0_t2_loop.trips, ∀ a, (k0_off399 k0_t2) a + S1x1x1x16.size a ≤ S2x4x4x1024.size a
  k0_off400_inb : ∀ k0_t2 : Fin k0_t2_loop.trips, ∀ a, (k0_off400 k0_t2) a + S1x1x1x16.size a ≤ S4x4x4x1024.size a
  k0_off401_inb : ∀ k0_t2 : Fin k0_t2_loop.trips, ∀ a, (k0_off401 k0_t2) a + S1x1x1x16.size a ≤ S2x4x4x1024.size a
  k0_off402_inb : ∀ k0_t2 : Fin k0_t2_loop.trips, ∀ a, (k0_off402 k0_t2) a + S1x1x1x16.size a ≤ S4x4x4x1024.size a
  k0_off403_inb : ∀ k0_t2 : Fin k0_t2_loop.trips, ∀ a, (k0_off403 k0_t2) a + S1x1x1x16.size a ≤ S2x4x4x1024.size a
  k0_off404_inb : ∀ k0_t2 : Fin k0_t2_loop.trips, ∀ a, (k0_off404 k0_t2) a + S1x1x1x16.size a ≤ S4x4x4x1024.size a
  k0_off405_inb : ∀ k0_t2 : Fin k0_t2_loop.trips, ∀ a, (k0_off405 k0_t2) a + S1x1x1x16.size a ≤ S2x4x4x1024.size a
  k0_off406_inb : ∀ k0_t2 : Fin k0_t2_loop.trips, ∀ a, (k0_off406 k0_t2) a + S1x1x1x16.size a ≤ S4x4x4x1024.size a
  k0_off407_inb : ∀ k0_t2 : Fin k0_t2_loop.trips, ∀ a, (k0_off407 k0_t2) a + S1x1x1x16.size a ≤ S2x4x4x1024.size a
  k0_off408_inb : ∀ k0_t2 : Fin k0_t2_loop.trips, ∀ a, (k0_off408 k0_t2) a + S1x1x1x16.size a ≤ S4x4x4x1024.size a
  k0_off409_inb : ∀ k0_t2 : Fin k0_t2_loop.trips, ∀ a, (k0_off409 k0_t2) a + S1x1x1x16.size a ≤ S2x4x4x1024.size a
  k0_off410_inb : ∀ k0_t2 : Fin k0_t2_loop.trips, ∀ a, (k0_off410 k0_t2) a + S1x1x1x16.size a ≤ S4x4x4x1024.size a
  k0_off411_inb : ∀ k0_t2 : Fin k0_t2_loop.trips, ∀ a, (k0_off411 k0_t2) a + S1x1x1x16.size a ≤ S2x4x4x1024.size a
  k0_off412_inb : ∀ k0_t2 : Fin k0_t2_loop.trips, ∀ a, (k0_off412 k0_t2) a + S1x1x1x16.size a ≤ S4x4x4x1024.size a
  k0_off413_inb : ∀ k0_t2 : Fin k0_t2_loop.trips, ∀ a, (k0_off413 k0_t2) a + S1x1x1x16.size a ≤ S2x4x4x1024.size a
  k0_off414_inb : ∀ k0_t2 : Fin k0_t2_loop.trips, ∀ a, (k0_off414 k0_t2) a + S1x1x1x16.size a ≤ S4x4x4x1024.size a
  k0_off415_inb : ∀ k0_t2 : Fin k0_t2_loop.trips, ∀ a, (k0_off415 k0_t2) a + S1x1x1x16.size a ≤ S2x4x4x1024.size a
  k0_off416_inb : ∀ k0_t2 : Fin k0_t2_loop.trips, ∀ a, (k0_off416 k0_t2) a + S1x1x1x16.size a ≤ S4x4x4x1024.size a
  k0_off417_inb : ∀ k0_t2 : Fin k0_t2_loop.trips, ∀ a, (k0_off417 k0_t2) a + S1x1x1x16.size a ≤ S2x4x4x1024.size a
  k0_off418_inb : ∀ k0_t2 : Fin k0_t2_loop.trips, ∀ a, (k0_off418 k0_t2) a + S1x1x1x16.size a ≤ S4x4x4x1024.size a
  k0_off419_inb : ∀ k0_t2 : Fin k0_t2_loop.trips, ∀ a, (k0_off419 k0_t2) a + S1x1x1x16.size a ≤ S2x4x4x1024.size a
  k0_off420_inb : ∀ k0_t2 : Fin k0_t2_loop.trips, ∀ a, (k0_off420 k0_t2) a + S1x1x1x16.size a ≤ S4x4x4x1024.size a
  k0_off421_inb : ∀ k0_t2 : Fin k0_t2_loop.trips, ∀ a, (k0_off421 k0_t2) a + S1x1x1x16.size a ≤ S2x4x4x1024.size a
  k0_off422_inb : ∀ k0_t2 : Fin k0_t2_loop.trips, ∀ a, (k0_off422 k0_t2) a + S1x1x1x16.size a ≤ S4x4x4x1024.size a
  k0_off423_inb : ∀ k0_t2 : Fin k0_t2_loop.trips, ∀ a, (k0_off423 k0_t2) a + S1x1x1x16.size a ≤ S2x4x4x1024.size a
  k0_off424_inb : ∀ k0_t2 : Fin k0_t2_loop.trips, ∀ a, (k0_off424 k0_t2) a + S1x1x1x16.size a ≤ S4x4x4x1024.size a
  k0_off425_inb : ∀ k0_t2 : Fin k0_t2_loop.trips, ∀ a, (k0_off425 k0_t2) a + S1x1x1x16.size a ≤ S2x4x4x1024.size a
  k0_off426_inb : ∀ k0_t2 : Fin k0_t2_loop.trips, ∀ a, (k0_off426 k0_t2) a + S1x1x1x16.size a ≤ S4x4x4x1024.size a
  k0_off427_inb : ∀ k0_t2 : Fin k0_t2_loop.trips, ∀ a, (k0_off427 k0_t2) a + S1x1x1x16.size a ≤ S2x4x4x1024.size a
  k0_off428_inb : ∀ k0_t2 : Fin k0_t2_loop.trips, ∀ a, (k0_off428 k0_t2) a + S1x1x1x16.size a ≤ S4x4x4x1024.size a
  k0_off429_inb : ∀ k0_t2 : Fin k0_t2_loop.trips, ∀ a, (k0_off429 k0_t2) a + S1x1x1x16.size a ≤ S2x4x4x1024.size a
  k0_off430_inb : ∀ k0_t2 : Fin k0_t2_loop.trips, ∀ a, (k0_off430 k0_t2) a + S1x1x1x16.size a ≤ S4x4x4x1024.size a
  k0_off431_inb : ∀ k0_t2 : Fin k0_t2_loop.trips, ∀ a, (k0_off431 k0_t2) a + S1x1x1x16.size a ≤ S2x4x4x1024.size a
  k0_off432_inb : ∀ k0_t2 : Fin k0_t2_loop.trips, ∀ a, (k0_off432 k0_t2) a + S1x1x1x16.size a ≤ S4x4x4x1024.size a
  k0_off433_inb : ∀ k0_t2 : Fin k0_t2_loop.trips, ∀ a, (k0_off433 k0_t2) a + S1x1x1x16.size a ≤ S2x4x4x1024.size a
  k0_off434_inb : ∀ k0_t2 : Fin k0_t2_loop.trips, ∀ a, (k0_off434 k0_t2) a + S1x1x1x16.size a ≤ S4x4x4x1024.size a
  k0_off435_inb : ∀ k0_t2 : Fin k0_t2_loop.trips, ∀ a, (k0_off435 k0_t2) a + S1x1x1x16.size a ≤ S2x4x4x1024.size a
  k0_off436_inb : ∀ k0_t2 : Fin k0_t2_loop.trips, ∀ a, (k0_off436 k0_t2) a + S1x1x1x16.size a ≤ S4x4x4x1024.size a
  k0_off437_inb : ∀ k0_t2 : Fin k0_t2_loop.trips, ∀ a, (k0_off437 k0_t2) a + S1x1x1x16.size a ≤ S2x4x4x1024.size a
  k0_off438_inb : ∀ k0_t2 : Fin k0_t2_loop.trips, ∀ a, (k0_off438 k0_t2) a + S1x1x1x16.size a ≤ S4x4x4x1024.size a
  k0_off439_inb : ∀ k0_t2 : Fin k0_t2_loop.trips, ∀ a, (k0_off439 k0_t2) a + S1x1x1x16.size a ≤ S2x4x4x1024.size a
  k0_off440_inb : ∀ k0_t2 : Fin k0_t2_loop.trips, ∀ a, (k0_off440 k0_t2) a + S1x1x1x16.size a ≤ S4x4x4x1024.size a
  k0_off441_inb : ∀ k0_t2 : Fin k0_t2_loop.trips, ∀ a, (k0_off441 k0_t2) a + S1x1x1x16.size a ≤ S2x4x4x1024.size a
  k0_off442_inb : ∀ k0_t2 : Fin k0_t2_loop.trips, ∀ a, (k0_off442 k0_t2) a + S1x1x1x16.size a ≤ S4x4x4x1024.size a
  k0_off443_inb : ∀ k0_t2 : Fin k0_t2_loop.trips, ∀ a, (k0_off443 k0_t2) a + S1x1x1x16.size a ≤ S2x4x4x1024.size a
  k0_off444_inb : ∀ k0_t2 : Fin k0_t2_loop.trips, ∀ a, (k0_off444 k0_t2) a + S1x1x1x16.size a ≤ S4x4x4x1024.size a
  k0_off445_inb : ∀ k0_t2 : Fin k0_t2_loop.trips, ∀ a, (k0_off445 k0_t2) a + S1x1x1x16.size a ≤ S2x4x4x1024.size a
  k0_off446_inb : ∀ k0_t2 : Fin k0_t2_loop.trips, ∀ a, (k0_off446 k0_t2) a + S1x1x1x16.size a ≤ S4x4x4x1024.size a
  k0_off447_inb : ∀ k0_t2 : Fin k0_t2_loop.trips, ∀ a, (k0_off447 k0_t2) a + S1x1x1x16.size a ≤ S2x4x4x1024.size a
  k0_off448_inb : ∀ k0_t2 : Fin k0_t2_loop.trips, ∀ a, (k0_off448 k0_t2) a + S1x1x1x16.size a ≤ S4x4x4x1024.size a
  k0_off449_inb : ∀ k0_t2 : Fin k0_t2_loop.trips, ∀ a, (k0_off449 k0_t2) a + S1x1x1x16.size a ≤ S2x4x4x1024.size a
  k0_off450_inb : ∀ k0_t2 : Fin k0_t2_loop.trips, ∀ a, (k0_off450 k0_t2) a + S1x1x1x16.size a ≤ S4x4x4x1024.size a
  k0_off451_inb : ∀ k0_t2 : Fin k0_t2_loop.trips, ∀ a, (k0_off451 k0_t2) a + S1x1x1x16.size a ≤ S2x4x4x1024.size a
  k0_off452_inb : ∀ k0_t2 : Fin k0_t2_loop.trips, ∀ a, (k0_off452 k0_t2) a + S1x1x1x16.size a ≤ S4x4x4x1024.size a
  k0_off453_inb : ∀ k0_t2 : Fin k0_t2_loop.trips, ∀ a, (k0_off453 k0_t2) a + S1x1x1x16.size a ≤ S2x4x4x1024.size a
  k0_off454_inb : ∀ k0_t2 : Fin k0_t2_loop.trips, ∀ a, (k0_off454 k0_t2) a + S1x1x1x16.size a ≤ S4x4x4x1024.size a
  k0_off455_inb : ∀ k0_t2 : Fin k0_t2_loop.trips, ∀ a, (k0_off455 k0_t2) a + S1x1x1x16.size a ≤ S2x4x4x1024.size a
  k0_off456_inb : ∀ k0_t2 : Fin k0_t2_loop.trips, ∀ a, (k0_off456 k0_t2) a + S1x1x1x16.size a ≤ S4x4x4x1024.size a
  k0_off457_inb : ∀ k0_t2 : Fin k0_t2_loop.trips, ∀ a, (k0_off457 k0_t2) a + S1x1x1x16.size a ≤ S2x4x4x1024.size a
  k0_off458_inb : ∀ k0_t2 : Fin k0_t2_loop.trips, ∀ a, (k0_off458 k0_t2) a + S1x1x1x16.size a ≤ S4x4x4x1024.size a
  k0_off459_inb : ∀ k0_t2 : Fin k0_t2_loop.trips, ∀ a, (k0_off459 k0_t2) a + S1x1x1x16.size a ≤ S2x4x4x1024.size a
  k0_off460_inb : ∀ k0_t2 : Fin k0_t2_loop.trips, ∀ a, (k0_off460 k0_t2) a + S1x1x1x16.size a ≤ S4x4x4x1024.size a
  k0_off461_inb : ∀ k0_t2 : Fin k0_t2_loop.trips, ∀ a, (k0_off461 k0_t2) a + S1x1x1x16.size a ≤ S2x4x4x1024.size a
  k0_off462_inb : ∀ k0_t2 : Fin k0_t2_loop.trips, ∀ a, (k0_off462 k0_t2) a + S1x1x1x16.size a ≤ S4x4x4x1024.size a
  k0_off463_inb : ∀ k0_t2 : Fin k0_t2_loop.trips, ∀ a, (k0_off463 k0_t2) a + S1x1x1x16.size a ≤ S2x4x4x1024.size a
  k0_off464_inb : ∀ k0_t2 : Fin k0_t2_loop.trips, ∀ a, (k0_off464 k0_t2) a + S1x1x1x16.size a ≤ S4x4x4x1024.size a
  k0_off465_inb : ∀ k0_t2 : Fin k0_t2_loop.trips, ∀ a, (k0_off465 k0_t2) a + S1x1x1x16.size a ≤ S2x4x4x1024.size a
  k0_off466_inb : ∀ k0_t2 : Fin k0_t2_loop.trips, ∀ a, (k0_off466 k0_t2) a + S1x1x1x16.size a ≤ S4x4x4x1024.size a
  k0_off467_inb : ∀ k0_t2 : Fin k0_t2_loop.trips, ∀ a, (k0_off467 k0_t2) a + S1x1x1x16.size a ≤ S2x4x4x1024.size a
  k0_off468_inb : ∀ k0_t2 : Fin k0_t2_loop.trips, ∀ a, (k0_off468 k0_t2) a + S1x1x1x16.size a ≤ S4x4x4x1024.size a
  k0_off469_inb : ∀ k0_t2 : Fin k0_t2_loop.trips, ∀ a, (k0_off469 k0_t2) a + S1x1x1x16.size a ≤ S2x4x4x1024.size a
  k0_off470_inb : ∀ k0_t2 : Fin k0_t2_loop.trips, ∀ a, (k0_off470 k0_t2) a + S1x1x1x16.size a ≤ S4x4x4x1024.size a
  k0_off471_inb : ∀ k0_t2 : Fin k0_t2_loop.trips, ∀ a, (k0_off471 k0_t2) a + S1x1x1x16.size a ≤ S2x4x4x1024.size a
  k0_off472_inb : ∀ k0_t2 : Fin k0_t2_loop.trips, ∀ a, (k0_off472 k0_t2) a + S1x1x1x16.size a ≤ S4x4x4x1024.size a
  k0_off473_inb : ∀ k0_t2 : Fin k0_t2_loop.trips, ∀ a, (k0_off473 k0_t2) a + S1x1x1x16.size a ≤ S2x4x4x1024.size a
  k0_off474_inb : ∀ k0_t2 : Fin k0_t2_loop.trips, ∀ a, (k0_off474 k0_t2) a + S1x1x1x16.size a ≤ S4x4x4x1024.size a
  k0_off475_inb : ∀ k0_t2 : Fin k0_t2_loop.trips, ∀ a, (k0_off475 k0_t2) a + S1x1x1x16.size a ≤ S2x4x4x1024.size a
  k0_off476_inb : ∀ k0_t2 : Fin k0_t2_loop.trips, ∀ a, (k0_off476 k0_t2) a + S1x1x1x16.size a ≤ S4x4x4x1024.size a
  k0_off477_inb : ∀ k0_t2 : Fin k0_t2_loop.trips, ∀ a, (k0_off477 k0_t2) a + S1x1x1x16.size a ≤ S2x4x4x1024.size a
  k0_off478_inb : ∀ k0_t2 : Fin k0_t2_loop.trips, ∀ a, (k0_off478 k0_t2) a + S1x1x1x16.size a ≤ S4x4x4x1024.size a
  k0_off479_inb : ∀ k0_t2 : Fin k0_t2_loop.trips, ∀ a, (k0_off479 k0_t2) a + S1x1x1x16.size a ≤ S2x4x4x1024.size a
  k0_off480_inb : ∀ k0_t2 : Fin k0_t2_loop.trips, ∀ a, (k0_off480 k0_t2) a + S1x1x1x16.size a ≤ S4x4x4x1024.size a
  k0_off481_inb : ∀ k0_t2 : Fin k0_t2_loop.trips, ∀ a, (k0_off481 k0_t2) a + S1x1x1x16.size a ≤ S2x4x4x1024.size a
  k0_off482_inb : ∀ k0_t2 : Fin k0_t2_loop.trips, ∀ a, (k0_off482 k0_t2) a + S1x1x1x16.size a ≤ S4x4x4x1024.size a
  k0_off483_inb : ∀ k0_t2 : Fin k0_t2_loop.trips, ∀ a, (k0_off483 k0_t2) a + S1x1x1x16.size a ≤ S2x4x4x1024.size a
  k0_off484_inb : ∀ k0_t2 : Fin k0_t2_loop.trips, ∀ a, (k0_off484 k0_t2) a + S1x1x1x16.size a ≤ S4x4x4x1024.size a
  k0_off485_inb : ∀ k0_t2 : Fin k0_t2_loop.trips, ∀ a, (k0_off485 k0_t2) a + S1x1x1x16.size a ≤ S2x4x4x1024.size a
  k0_off486_inb : ∀ k0_t2 : Fin k0_t2_loop.trips, ∀ a, (k0_off486 k0_t2) a + S1x1x1x16.size a ≤ S4x4x4x1024.size a
  k0_off487_inb : ∀ k0_t2 : Fin k0_t2_loop.trips, ∀ a, (k0_off487 k0_t2) a + S1x1x1x16.size a ≤ S2x4x4x1024.size a
  k0_off488_inb : ∀ k0_t2 : Fin k0_t2_loop.trips, ∀ a, (k0_off488 k0_t2) a + S1x1x1x16.size a ≤ S4x4x4x1024.size a
  k0_off489_inb : ∀ k0_t2 : Fin k0_t2_loop.trips, ∀ a, (k0_off489 k0_t2) a + S1x1x1x16.size a ≤ S2x4x4x1024.size a
  k0_off490_inb : ∀ k0_t2 : Fin k0_t2_loop.trips, ∀ a, (k0_off490 k0_t2) a + S1x1x1x16.size a ≤ S4x4x4x1024.size a
  k0_off491_inb : ∀ k0_t2 : Fin k0_t2_loop.trips, ∀ a, (k0_off491 k0_t2) a + S1x1x1x16.size a ≤ S2x4x4x1024.size a
  k0_off492_inb : ∀ k0_t2 : Fin k0_t2_loop.trips, ∀ a, (k0_off492 k0_t2) a + S1x1x1x16.size a ≤ S4x4x4x1024.size a
  k0_off493_inb : ∀ k0_t2 : Fin k0_t2_loop.trips, ∀ a, (k0_off493 k0_t2) a + S1x1x1x16.size a ≤ S2x4x4x1024.size a
  k0_off494_inb : ∀ k0_t2 : Fin k0_t2_loop.trips, ∀ a, (k0_off494 k0_t2) a + S1x1x1x16.size a ≤ S4x4x4x1024.size a
  k0_off495_inb : ∀ k0_t2 : Fin k0_t2_loop.trips, ∀ a, (k0_off495 k0_t2) a + S1x1x1x16.size a ≤ S2x4x4x1024.size a
  k0_off496_inb : ∀ k0_t2 : Fin k0_t2_loop.trips, ∀ a, (k0_off496 k0_t2) a + S1x1x1x16.size a ≤ S4x4x4x1024.size a
  k0_off497_inb : ∀ k0_t2 : Fin k0_t2_loop.trips, ∀ a, (k0_off497 k0_t2) a + S1x1x1x16.size a ≤ S2x4x4x1024.size a
  k0_off498_inb : ∀ k0_t2 : Fin k0_t2_loop.trips, ∀ a, (k0_off498 k0_t2) a + S1x1x1x16.size a ≤ S4x4x4x1024.size a
  k0_off499_inb : ∀ k0_t2 : Fin k0_t2_loop.trips, ∀ a, (k0_off499 k0_t2) a + S1x1x1x16.size a ≤ S2x4x4x1024.size a
  k0_off500_inb : ∀ k0_t2 : Fin k0_t2_loop.trips, ∀ a, (k0_off500 k0_t2) a + S1x1x1x16.size a ≤ S4x4x4x1024.size a
  k0_off501_inb : ∀ k0_t2 : Fin k0_t2_loop.trips, ∀ a, (k0_off501 k0_t2) a + S1x1x1x16.size a ≤ S2x4x4x1024.size a
  k0_off502_inb : ∀ k0_t2 : Fin k0_t2_loop.trips, ∀ a, (k0_off502 k0_t2) a + S1x1x1x16.size a ≤ S4x4x4x1024.size a
  k0_off503_inb : ∀ k0_t2 : Fin k0_t2_loop.trips, ∀ a, (k0_off503 k0_t2) a + S1x1x1x16.size a ≤ S2x4x4x1024.size a
  k0_off504_inb : ∀ k0_t2 : Fin k0_t2_loop.trips, ∀ a, (k0_off504 k0_t2) a + S1x1x1x16.size a ≤ S4x4x4x1024.size a
  k0_off505_inb : ∀ k0_t2 : Fin k0_t2_loop.trips, ∀ a, (k0_off505 k0_t2) a + S1x1x1x16.size a ≤ S2x4x4x1024.size a
  k0_off506_inb : ∀ k0_t2 : Fin k0_t2_loop.trips, ∀ a, (k0_off506 k0_t2) a + S1x1x1x16.size a ≤ S4x4x4x1024.size a
  k0_off507_inb : ∀ k0_t2 : Fin k0_t2_loop.trips, ∀ a, (k0_off507 k0_t2) a + S1x1x1x16.size a ≤ S2x4x4x1024.size a
  k0_off508_inb : ∀ k0_t2 : Fin k0_t2_loop.trips, ∀ a, (k0_off508 k0_t2) a + S1x1x1x16.size a ≤ S4x4x4x1024.size a
  k0_off509_inb : ∀ k0_t2 : Fin k0_t2_loop.trips, ∀ a, (k0_off509 k0_t2) a + S1x1x1x16.size a ≤ S2x4x4x1024.size a
  k0_off510_inb : ∀ k0_t2 : Fin k0_t2_loop.trips, ∀ a, (k0_off510 k0_t2) a + S1x1x1x16.size a ≤ S4x4x4x1024.size a
  k0_off511_inb : ∀ k0_t2 : Fin k0_t2_loop.trips, ∀ a, (k0_off511 k0_t2) a + S1x1x1x16.size a ≤ S2x4x4x1024.size a
  k0_off512_inb : ∀ k0_t2 : Fin k0_t2_loop.trips, ∀ a, (k0_off512 k0_t2) a + S1x1x1x16.size a ≤ S4x4x4x1024.size a
  k0_off513_inb : ∀ k0_t2 : Fin k0_t2_loop.trips, ∀ a, (k0_off513 k0_t2) a + S1x1x1x16.size a ≤ S2x4x4x1024.size a
  k0_off514_inb : ∀ k0_t2 : Fin k0_t2_loop.trips, ∀ a, (k0_off514 k0_t2) a + S1x1x1x16.size a ≤ S4x4x4x1024.size a
  k0_off515_inb : ∀ k0_t2 : Fin k0_t2_loop.trips, ∀ a, (k0_off515 k0_t2) a + S1x1x1x16.size a ≤ S2x4x4x1024.size a
  k0_off516_inb : ∀ k0_t2 : Fin k0_t2_loop.trips, ∀ a, (k0_off516 k0_t2) a + S1x1x1x16.size a ≤ S4x4x4x1024.size a
  k0_off517_inb : ∀ k0_t2 : Fin k0_t2_loop.trips, ∀ a, (k0_off517 k0_t2) a + S1x1x1x16.size a ≤ S2x4x4x1024.size a
  k0_off518_inb : ∀ k0_t2 : Fin k0_t2_loop.trips, ∀ a, (k0_off518 k0_t2) a + S1x1x1x16.size a ≤ S4x4x4x1024.size a
  k0_off519_inb : ∀ k0_t2 : Fin k0_t2_loop.trips, ∀ a, (k0_off519 k0_t2) a + S1x1x1x16.size a ≤ S2x4x4x1024.size a
  k0_off520_inb : ∀ k0_t2 : Fin k0_t2_loop.trips, ∀ a, (k0_off520 k0_t2) a + S1x1x1x16.size a ≤ S4x4x4x1024.size a
  k0_off521_inb : ∀ k0_t2 : Fin k0_t2_loop.trips, ∀ a, (k0_off521 k0_t2) a + S1x1x1x16.size a ≤ S2x4x4x1024.size a
  k0_off522_inb : ∀ k0_t2 : Fin k0_t2_loop.trips, ∀ a, (k0_off522 k0_t2) a + S1x1x1x16.size a ≤ S4x4x4x1024.size a
  k0_off523_inb : ∀ k0_t2 : Fin k0_t2_loop.trips, ∀ a, (k0_off523 k0_t2) a + S1x1x1x16.size a ≤ S2x4x4x1024.size a
  k0_off524_inb : ∀ k0_t2 : Fin k0_t2_loop.trips, ∀ a, (k0_off524 k0_t2) a + S1x1x1x16.size a ≤ S4x4x4x1024.size a
  k0_off525_inb : ∀ k0_t2 : Fin k0_t2_loop.trips, ∀ a, (k0_off525 k0_t2) a + S1x1x1x16.size a ≤ S2x4x4x1024.size a
  k0_off526_inb : ∀ k0_t2 : Fin k0_t2_loop.trips, ∀ a, (k0_off526 k0_t2) a + S1x1x1x16.size a ≤ S4x4x4x1024.size a
  k0_off527_inb : ∀ k0_t2 : Fin k0_t2_loop.trips, ∀ a, (k0_off527 k0_t2) a + S1x1x1x16.size a ≤ S2x4x4x1024.size a
  k0_off528_inb : ∀ k0_t2 : Fin k0_t2_loop.trips, ∀ a, (k0_off528 k0_t2) a + S1x1x1x16.size a ≤ S4x4x4x1024.size a
  k0_off529_inb : ∀ k0_t2 : Fin k0_t2_loop.trips, ∀ a, (k0_off529 k0_t2) a + S1x1x1x16.size a ≤ S2x4x4x1024.size a
  k0_off530_inb : ∀ k0_t2 : Fin k0_t2_loop.trips, ∀ a, (k0_off530 k0_t2) a + S1x1x1x16.size a ≤ S4x4x4x1024.size a
  k0_off531_inb : ∀ k0_t2 : Fin k0_t2_loop.trips, ∀ a, (k0_off531 k0_t2) a + S1x1x1x16.size a ≤ S2x4x4x1024.size a
  k0_off532_inb : ∀ k0_t2 : Fin k0_t2_loop.trips, ∀ a, (k0_off532 k0_t2) a + S1x1x1x16.size a ≤ S4x4x4x1024.size a
  k0_off533_inb : ∀ k0_t2 : Fin k0_t2_loop.trips, ∀ a, (k0_off533 k0_t2) a + S1x1x1x16.size a ≤ S2x4x4x1024.size a
  k0_off534_inb : ∀ k0_t2 : Fin k0_t2_loop.trips, ∀ a, (k0_off534 k0_t2) a + S1x1x1x16.size a ≤ S4x4x4x1024.size a
  k0_off535_inb : ∀ k0_t2 : Fin k0_t2_loop.trips, ∀ a, (k0_off535 k0_t2) a + S1x1x1x16.size a ≤ S2x4x4x1024.size a
  k0_off536_inb : ∀ k0_t2 : Fin k0_t2_loop.trips, ∀ a, (k0_off536 k0_t2) a + S1x1x1x16.size a ≤ S4x4x4x1024.size a
  k0_off537_inb : ∀ k0_t2 : Fin k0_t2_loop.trips, ∀ a, (k0_off537 k0_t2) a + S1x1x1x16.size a ≤ S2x4x4x1024.size a
  k0_off538_inb : ∀ k0_t2 : Fin k0_t2_loop.trips, ∀ a, (k0_off538 k0_t2) a + S1x1x1x16.size a ≤ S4x4x4x1024.size a
  k0_off539_inb : ∀ k0_t2 : Fin k0_t2_loop.trips, ∀ a, (k0_off539 k0_t2) a + S1x1x1x16.size a ≤ S2x4x4x1024.size a
  k0_off540_inb : ∀ k0_t2 : Fin k0_t2_loop.trips, ∀ a, (k0_off540 k0_t2) a + S1x1x1x16.size a ≤ S4x4x4x1024.size a
  k0_off541_inb : ∀ k0_t2 : Fin k0_t2_loop.trips, ∀ a, (k0_off541 k0_t2) a + S1x1x1x16.size a ≤ S2x4x4x1024.size a
  k0_off542_inb : ∀ k0_t2 : Fin k0_t2_loop.trips, ∀ a, (k0_off542 k0_t2) a + S1x1x1x16.size a ≤ S4x4x4x1024.size a
  k0_off543_inb : ∀ k0_t2 : Fin k0_t2_loop.trips, ∀ a, (k0_off543 k0_t2) a + S1x1x1x16.size a ≤ S2x4x4x1024.size a
  k0_off544_inb : ∀ k0_t2 : Fin k0_t2_loop.trips, ∀ a, (k0_off544 k0_t2) a + S1x1x1x16.size a ≤ S4x4x4x1024.size a
  k0_off545_inb : ∀ k0_t2 : Fin k0_t2_loop.trips, ∀ a, (k0_off545 k0_t2) a + S1x1x1x16.size a ≤ S2x4x4x1024.size a
  k0_off546_inb : ∀ k0_t2 : Fin k0_t2_loop.trips, ∀ a, (k0_off546 k0_t2) a + S1x1x1x16.size a ≤ S4x4x4x1024.size a
  k0_off547_inb : ∀ k0_t2 : Fin k0_t2_loop.trips, ∀ a, (k0_off547 k0_t2) a + S1x1x1x16.size a ≤ S2x4x4x1024.size a
  k0_off548_inb : ∀ k0_t2 : Fin k0_t2_loop.trips, ∀ a, (k0_off548 k0_t2) a + S1x1x1x16.size a ≤ S4x4x4x1024.size a
  k0_off549_inb : ∀ k0_t2 : Fin k0_t2_loop.trips, ∀ a, (k0_off549 k0_t2) a + S1x1x1x16.size a ≤ S2x4x4x1024.size a
  k0_off550_inb : ∀ k0_t2 : Fin k0_t2_loop.trips, ∀ a, (k0_off550 k0_t2) a + S1x1x1x16.size a ≤ S4x4x4x1024.size a
  k0_off551_inb : ∀ k0_t2 : Fin k0_t2_loop.trips, ∀ a, (k0_off551 k0_t2) a + S1x1x1x16.size a ≤ S2x4x4x1024.size a
  k0_off552_inb : ∀ k0_t2 : Fin k0_t2_loop.trips, ∀ a, (k0_off552 k0_t2) a + S1x1x1x16.size a ≤ S4x4x4x1024.size a
  k0_off553_inb : ∀ k0_t2 : Fin k0_t2_loop.trips, ∀ a, (k0_off553 k0_t2) a + S1x1x1x16.size a ≤ S2x4x4x1024.size a
  k0_off554_inb : ∀ k0_t2 : Fin k0_t2_loop.trips, ∀ a, (k0_off554 k0_t2) a + S1x1x1x16.size a ≤ S4x4x4x1024.size a
  k0_off555_inb : ∀ k0_t2 : Fin k0_t2_loop.trips, ∀ a, (k0_off555 k0_t2) a + S1x1x1x16.size a ≤ S2x4x4x1024.size a
  k0_off556_inb : ∀ k0_t2 : Fin k0_t2_loop.trips, ∀ a, (k0_off556 k0_t2) a + S1x1x1x16.size a ≤ S4x4x4x1024.size a
  k0_off557_inb : ∀ k0_t2 : Fin k0_t2_loop.trips, ∀ a, (k0_off557 k0_t2) a + S1x1x1x16.size a ≤ S2x4x4x1024.size a
  k0_off558_inb : ∀ k0_t2 : Fin k0_t2_loop.trips, ∀ a, (k0_off558 k0_t2) a + S1x1x1x16.size a ≤ S4x4x4x1024.size a
  k0_off559_inb : ∀ k0_t2 : Fin k0_t2_loop.trips, ∀ a, (k0_off559 k0_t2) a + S1x1x1x16.size a ≤ S2x4x4x1024.size a
  k0_off560_inb : ∀ k0_t2 : Fin k0_t2_loop.trips, ∀ a, (k0_off560 k0_t2) a + S1x1x1x16.size a ≤ S4x4x4x1024.size a
  k0_off561_inb : ∀ k0_t2 : Fin k0_t2_loop.trips, ∀ a, (k0_off561 k0_t2) a + S1x1x1x16.size a ≤ S2x4x4x1024.size a
  k0_off562_inb : ∀ k0_t2 : Fin k0_t2_loop.trips, ∀ a, (k0_off562 k0_t2) a + S1x1x1x16.size a ≤ S4x4x4x1024.size a
  k0_off563_inb : ∀ k0_t2 : Fin k0_t2_loop.trips, ∀ a, (k0_off563 k0_t2) a + S1x1x1x16.size a ≤ S2x4x4x1024.size a
  k0_off564_inb : ∀ k0_t2 : Fin k0_t2_loop.trips, ∀ a, (k0_off564 k0_t2) a + S1x1x1x16.size a ≤ S4x4x4x1024.size a
  k0_off565_inb : ∀ k0_t2 : Fin k0_t2_loop.trips, ∀ a, (k0_off565 k0_t2) a + S1x1x1x16.size a ≤ S2x4x4x1024.size a
  k0_off566_inb : ∀ k0_t2 : Fin k0_t2_loop.trips, ∀ a, (k0_off566 k0_t2) a + S1x1x1x16.size a ≤ S4x4x4x1024.size a
  k0_off567_inb : ∀ k0_t2 : Fin k0_t2_loop.trips, ∀ a, (k0_off567 k0_t2) a + S1x1x1x16.size a ≤ S2x4x4x1024.size a
  k0_off568_inb : ∀ k0_t2 : Fin k0_t2_loop.trips, ∀ a, (k0_off568 k0_t2) a + S1x1x1x16.size a ≤ S4x4x4x1024.size a
  k0_off569_inb : ∀ k0_t2 : Fin k0_t2_loop.trips, ∀ a, (k0_off569 k0_t2) a + S1x1x1x16.size a ≤ S2x4x4x1024.size a
  k0_off570_inb : ∀ k0_t2 : Fin k0_t2_loop.trips, ∀ a, (k0_off570 k0_t2) a + S1x1x1x16.size a ≤ S4x4x4x1024.size a
  k0_off571_inb : ∀ k0_t2 : Fin k0_t2_loop.trips, ∀ a, (k0_off571 k0_t2) a + S1x1x1x16.size a ≤ S2x4x4x1024.size a
  k0_off572_inb : ∀ k0_t2 : Fin k0_t2_loop.trips, ∀ a, (k0_off572 k0_t2) a + S1x1x1x16.size a ≤ S4x4x4x1024.size a
  k0_off573_inb : ∀ k0_t2 : Fin k0_t2_loop.trips, ∀ a, (k0_off573 k0_t2) a + S1x1x1x16.size a ≤ S2x4x4x1024.size a
  k0_off574_inb : ∀ k0_t2 : Fin k0_t2_loop.trips, ∀ a, (k0_off574 k0_t2) a + S1x1x1x16.size a ≤ S4x4x4x1024.size a
  k0_off575_inb : ∀ k0_t2 : Fin k0_t2_loop.trips, ∀ a, (k0_off575 k0_t2) a + S1x1x1x16.size a ≤ S2x4x4x1024.size a
  k0_off576_inb : ∀ k0_t2 : Fin k0_t2_loop.trips, ∀ a, (k0_off576 k0_t2) a + S1x1x1x16.size a ≤ S4x4x4x1024.size a
  k0_off577_inb : ∀ k0_t2 : Fin k0_t2_loop.trips, ∀ a, (k0_off577 k0_t2) a + S1x1x1x16.size a ≤ S2x4x4x1024.size a
  k0_off578_inb : ∀ k0_t2 : Fin k0_t2_loop.trips, ∀ a, (k0_off578 k0_t2) a + S1x1x1x16.size a ≤ S4x4x4x1024.size a
  k0_off579_inb : ∀ k0_t2 : Fin k0_t2_loop.trips, ∀ a, (k0_off579 k0_t2) a + S1x1x1x16.size a ≤ S2x4x4x1024.size a
  k0_off580_inb : ∀ k0_t2 : Fin k0_t2_loop.trips, ∀ a, (k0_off580 k0_t2) a + S1x1x1x16.size a ≤ S4x4x4x1024.size a
  k0_off581_inb : ∀ k0_t2 : Fin k0_t2_loop.trips, ∀ a, (k0_off581 k0_t2) a + S1x1x1x16.size a ≤ S2x4x4x1024.size a
  k0_off582_inb : ∀ k0_t2 : Fin k0_t2_loop.trips, ∀ a, (k0_off582 k0_t2) a + S1x1x1x16.size a ≤ S4x4x4x1024.size a
  k0_off583_inb : ∀ k0_t2 : Fin k0_t2_loop.trips, ∀ a, (k0_off583 k0_t2) a + S1x1x1x16.size a ≤ S2x4x4x1024.size a
  k0_off584_inb : ∀ k0_t2 : Fin k0_t2_loop.trips, ∀ a, (k0_off584 k0_t2) a + S1x1x1x16.size a ≤ S4x4x4x1024.size a
  k0_off585_inb : ∀ k0_t2 : Fin k0_t2_loop.trips, ∀ a, (k0_off585 k0_t2) a + S1x1x1x16.size a ≤ S2x4x4x1024.size a
  k0_off586_inb : ∀ k0_t2 : Fin k0_t2_loop.trips, ∀ a, (k0_off586 k0_t2) a + S1x1x1x16.size a ≤ S4x4x4x1024.size a
  k0_off587_inb : ∀ k0_t2 : Fin k0_t2_loop.trips, ∀ a, (k0_off587 k0_t2) a + S1x1x1x16.size a ≤ S2x4x4x1024.size a
  k0_off588_inb : ∀ k0_t2 : Fin k0_t2_loop.trips, ∀ a, (k0_off588 k0_t2) a + S1x1x1x16.size a ≤ S4x4x4x1024.size a
  k0_off589_inb : ∀ k0_t2 : Fin k0_t2_loop.trips, ∀ a, (k0_off589 k0_t2) a + S1x1x1x16.size a ≤ S2x4x4x1024.size a
  k0_off590_inb : ∀ k0_t2 : Fin k0_t2_loop.trips, ∀ a, (k0_off590 k0_t2) a + S1x1x1x16.size a ≤ S4x4x4x1024.size a
  k0_off591_inb : ∀ k0_t2 : Fin k0_t2_loop.trips, ∀ a, (k0_off591 k0_t2) a + S1x1x1x16.size a ≤ S2x4x4x1024.size a
  k0_off592_inb : ∀ k0_t2 : Fin k0_t2_loop.trips, ∀ a, (k0_off592 k0_t2) a + S1x1x1x16.size a ≤ S4x4x4x1024.size a
  k0_off593_inb : ∀ k0_t2 : Fin k0_t2_loop.trips, ∀ a, (k0_off593 k0_t2) a + S1x1x1x16.size a ≤ S2x4x4x1024.size a
  k0_off594_inb : ∀ k0_t2 : Fin k0_t2_loop.trips, ∀ a, (k0_off594 k0_t2) a + S1x1x1x16.size a ≤ S4x4x4x1024.size a
  k0_off595_inb : ∀ k0_t2 : Fin k0_t2_loop.trips, ∀ a, (k0_off595 k0_t2) a + S1x1x1x16.size a ≤ S2x4x4x1024.size a
  k0_off596_inb : ∀ (i : grid0.Coords) (k0_t1 : Fin k0_t1_loop.trips), ∀ (r : Fin 4), ∀ a, (k0_off596 i k0_t1 (BitVec.ofNat 32 r.val)) a + S1x4x1024.size a ≤ S4x4096x1024.size a
  k0_off597_inb : ∀ (i : grid0.Coords) (k0_t1 : Fin k0_t1_loop.trips), ∀ (r : Fin 4), ∀ a, (k0_off597 i k0_t1 (BitVec.ofNat 32 r.val)) a + S1x4x1024.size a ≤ S4x4096x1024.size a
  k0_off598_inb : ∀ (i : grid0.Coords) (k0_t1 : Fin k0_t1_loop.trips), ∀ (r : Fin 4), ∀ a, (k0_off598 i k0_t1 (BitVec.ofNat 32 r.val)) a + S1x4x1024.size a ≤ S4x4096x1024.size a
  k0_off599_inb : ∀ (i : grid0.Coords) (k0_t1 : Fin k0_t1_loop.trips), ∀ (r : Fin 4), ∀ a, (k0_off599 i k0_t1 (BitVec.ofNat 32 r.val)) a + S1x4x1024.size a ≤ S4x4096x1024.size a
  k0_off600_inb : ∀ (i : grid0.Coords) (k0_t1 : Fin k0_t1_loop.trips), ∀ (k0_h3 : k0_cond3 k0_t1 = 1#1), ∀ a, (k0_off600 i k0_t1) a + S4x1024.size a ≤ S4096x1024.size a
  k0_off601_inb : ∀ (i : grid0.Coords) (k0_t1 : Fin k0_t1_loop.trips), ∀ (k0_h3 : k0_cond3 k0_t1 = 1#1), ∀ a, (k0_off601 i k0_t1) a + S1x4x1024.size a ≤ S4x4096x1024.size a
  k0_off602_inb : ∀ (i : grid0.Coords) (k0_t1 : Fin k0_t1_loop.trips), ∀ (k0_h3 : k0_cond3 k0_t1 = 1#1), ∀ a, (k0_off602 i k0_t1) a + S1x4x1024.size a ≤ S4x4096x1024.size a
  k0_off603_inb : ∀ (i : grid0.Coords) (k0_t1 : Fin k0_t1_loop.trips), ∀ (k0_h3 : k0_cond3 k0_t1 = 1#1), ∀ a, (k0_off603 i k0_t1) a + S1x4x1024.size a ≤ S4x4096x1024.size a
  k0_off604_inb : ∀ (i : grid0.Coords) (k0_t1 : Fin k0_t1_loop.trips), ∀ (k0_h3 : k0_cond3 k0_t1 = 1#1), ∀ a, (k0_off604 i k0_t1) a + S1x4x1024.size a ≤ S4x4096x1024.size a
  k0_off605_inb : ∀ (i : grid0.Coords) (k0_t1 : Fin k0_t1_loop.trips), ∀ (k0_h4 : k0_cond4 k0_t1 = 1#1), ∀ a, (k0_off605 i) a + S1x4x1024.size a ≤ S4x4096x1024.size a
  k0_off606_inb : ∀ (i : grid0.Coords) (k0_t1 : Fin k0_t1_loop.trips), ∀ (k0_h4 : k0_cond4 k0_t1 = 1#1), ∀ a, (k0_off606 i) a + S1x4x1024.size a ≤ S4x4096x1024.size a
  k0_off607_inb : ∀ (i : grid0.Coords) (k0_t1 : Fin k0_t1_loop.trips), ∀ (k0_h4 : k0_cond4 k0_t1 = 1#1), ∀ a, (k0_off607 i) a + S1x4x1024.size a ≤ S4x4096x1024.size a
  k0_off608_inb : ∀ (i : grid0.Coords) (k0_t1 : Fin k0_t1_loop.trips), ∀ (k0_h4 : k0_cond4 k0_t1 = 1#1), ∀ a, (k0_off608 i) a + S1x4x1024.size a ≤ S4x4096x1024.size a
  k0_t3_ok : k0_t3_loop.OK
  k0_off609_inb : ∀ k0_t3 : Fin k0_t3_loop.trips, ∀ a, (k0_off609 k0_t3) a + S1x1x16.size a ≤ S4x4x1024.size a
  k0_off610_inb : ∀ k0_t3 : Fin k0_t3_loop.trips, ∀ a, (k0_off610 k0_t3) a + S1x1x16.size a ≤ S4x4x1024.size a
  k0_off611_inb : ∀ k0_t3 : Fin k0_t3_loop.trips, ∀ a, (k0_off611 k0_t3) a + S1x1x16.size a ≤ S4x4x1024.size a
  k0_off612_inb : ∀ k0_t3 : Fin k0_t3_loop.trips, ∀ a, (k0_off612 k0_t3) a + S1x1x16.size a ≤ S4x4x1024.size a
  k0_off613_inb : ∀ k0_t3 : Fin k0_t3_loop.trips, ∀ a, (k0_off613 k0_t3) a + S1x1x16.size a ≤ S4x4x1024.size a
  k0_off614_inb : ∀ k0_t3 : Fin k0_t3_loop.trips, ∀ a, (k0_off614 k0_t3) a + S1x1x16.size a ≤ S4x4x1024.size a
  k0_off615_inb : ∀ k0_t3 : Fin k0_t3_loop.trips, ∀ a, (k0_off615 k0_t3) a + S1x1x16.size a ≤ S4x4x1024.size a
  k0_off616_inb : ∀ k0_t3 : Fin k0_t3_loop.trips, ∀ a, (k0_off616 k0_t3) a + S1x1x16.size a ≤ S4x4x1024.size a
  k0_off617_inb : ∀ k0_t3 : Fin k0_t3_loop.trips, ∀ a, (k0_off617 k0_t3) a + S1x1x16.size a ≤ S4x4x1024.size a
  k0_off618_inb : ∀ k0_t3 : Fin k0_t3_loop.trips, ∀ a, (k0_off618 k0_t3) a + S1x1x16.size a ≤ S4x4x1024.size a
  k0_off619_inb : ∀ k0_t3 : Fin k0_t3_loop.trips, ∀ a, (k0_off619 k0_t3) a + S1x1x16.size a ≤ S4x4x1024.size a
  k0_off620_inb : ∀ k0_t3 : Fin k0_t3_loop.trips, ∀ a, (k0_off620 k0_t3) a + S1x1x16.size a ≤ S4x4x1024.size a
  k0_off621_inb : ∀ k0_t3 : Fin k0_t3_loop.trips, ∀ a, (k0_off621 k0_t3) a + S1x1x16.size a ≤ S4x4x1024.size a
  k0_off622_inb : ∀ k0_t3 : Fin k0_t3_loop.trips, ∀ a, (k0_off622 k0_t3) a + S1x1x16.size a ≤ S4x4x1024.size a
  k0_off623_inb : ∀ k0_t3 : Fin k0_t3_loop.trips, ∀ a, (k0_off623 k0_t3) a + S1x1x16.size a ≤ S4x4x1024.size a
  k0_off624_inb : ∀ k0_t3 : Fin k0_t3_loop.trips, ∀ a, (k0_off624 k0_t3) a + S1x1x16.size a ≤ S4x4x1024.size a
  k0_off625_inb : ∀ k0_t3 : Fin k0_t3_loop.trips, ∀ a, (k0_off625 k0_t3) a + S1x1x16.size a ≤ S4x4x1024.size a
  k0_off626_inb : ∀ k0_t3 : Fin k0_t3_loop.trips, ∀ a, (k0_off626 k0_t3) a + S1x1x16.size a ≤ S4x4x1024.size a
  k0_off627_inb : ∀ k0_t3 : Fin k0_t3_loop.trips, ∀ a, (k0_off627 k0_t3) a + S1x1x16.size a ≤ S4x4x1024.size a
  k0_off628_inb : ∀ k0_t3 : Fin k0_t3_loop.trips, ∀ a, (k0_off628 k0_t3) a + S1x1x16.size a ≤ S4x4x1024.size a
  k0_off629_inb : ∀ k0_t3 : Fin k0_t3_loop.trips, ∀ a, (k0_off629 k0_t3) a + S1x1x16.size a ≤ S4x4x1024.size a
  k0_off630_inb : ∀ k0_t3 : Fin k0_t3_loop.trips, ∀ a, (k0_off630 k0_t3) a + S1x1x16.size a ≤ S4x4x1024.size a
  k0_off631_inb : ∀ k0_t3 : Fin k0_t3_loop.trips, ∀ a, (k0_off631 k0_t3) a + S1x1x16.size a ≤ S4x4x1024.size a
  k0_off632_inb : ∀ k0_t3 : Fin k0_t3_loop.trips, ∀ a, (k0_off632 k0_t3) a + S1x1x16.size a ≤ S4x4x1024.size a
  k0_off633_inb : ∀ k0_t3 : Fin k0_t3_loop.trips, ∀ a, (k0_off633 k0_t3) a + S1x1x16.size a ≤ S4x4x1024.size a
  k0_off634_inb : ∀ k0_t3 : Fin k0_t3_loop.trips, ∀ a, (k0_off634 k0_t3) a + S1x1x16.size a ≤ S4x4x1024.size a
  k0_off635_inb : ∀ k0_t3 : Fin k0_t3_loop.trips, ∀ a, (k0_off635 k0_t3) a + S1x1x16.size a ≤ S4x4x1024.size a
  k0_off636_inb : ∀ k0_t3 : Fin k0_t3_loop.trips, ∀ a, (k0_off636 k0_t3) a + S1x1x16.size a ≤ S4x4x1024.size a
  k0_off637_inb : ∀ k0_t3 : Fin k0_t3_loop.trips, ∀ a, (k0_off637 k0_t3) a + S1x1x16.size a ≤ S4x4x1024.size a
  k0_off638_inb : ∀ k0_t3 : Fin k0_t3_loop.trips, ∀ a, (k0_off638 k0_t3) a + S1x1x16.size a ≤ S4x4x1024.size a
  k0_off639_inb : ∀ k0_t3 : Fin k0_t3_loop.trips, ∀ a, (k0_off639 k0_t3) a + S1x1x16.size a ≤ S4x4x1024.size a
  k0_off640_inb : ∀ k0_t3 : Fin k0_t3_loop.trips, ∀ a, (k0_off640 k0_t3) a + S1x1x16.size a ≤ S4x4x1024.size a
  k0_off641_inb : ∀ k0_t3 : Fin k0_t3_loop.trips, ∀ a, (k0_off641 k0_t3) a + S1x1x1x16.size a ≤ S4x4x4x1024.size a
  k0_off642_inb : ∀ k0_t3 : Fin k0_t3_loop.trips, ∀ a, (k0_off642 k0_t3) a + S1x1x1x16.size a ≤ S2x4x4x1024.size a
  k0_off643_inb : ∀ k0_t3 : Fin k0_t3_loop.trips, ∀ a, (k0_off643 k0_t3) a + S1x1x1x16.size a ≤ S4x4x4x1024.size a
  k0_off644_inb : ∀ k0_t3 : Fin k0_t3_loop.trips, ∀ a, (k0_off644 k0_t3) a + S1x1x1x16.size a ≤ S2x4x4x1024.size a
  k0_off645_inb : ∀ k0_t3 : Fin k0_t3_loop.trips, ∀ a, (k0_off645 k0_t3) a + S1x1x1x16.size a ≤ S4x4x4x1024.size a
  k0_off646_inb : ∀ k0_t3 : Fin k0_t3_loop.trips, ∀ a, (k0_off646 k0_t3) a + S1x1x1x16.size a ≤ S2x4x4x1024.size a
  k0_off647_inb : ∀ k0_t3 : Fin k0_t3_loop.trips, ∀ a, (k0_off647 k0_t3) a + S1x1x1x16.size a ≤ S4x4x4x1024.size a
  k0_off648_inb : ∀ k0_t3 : Fin k0_t3_loop.trips, ∀ a, (k0_off648 k0_t3) a + S1x1x1x16.size a ≤ S2x4x4x1024.size a
  k0_off649_inb : ∀ k0_t3 : Fin k0_t3_loop.trips, ∀ a, (k0_off649 k0_t3) a + S1x1x1x16.size a ≤ S4x4x4x1024.size a
  k0_off650_inb : ∀ k0_t3 : Fin k0_t3_loop.trips, ∀ a, (k0_off650 k0_t3) a + S1x1x1x16.size a ≤ S2x4x4x1024.size a
  k0_off651_inb : ∀ k0_t3 : Fin k0_t3_loop.trips, ∀ a, (k0_off651 k0_t3) a + S1x1x1x16.size a ≤ S4x4x4x1024.size a
  k0_off652_inb : ∀ k0_t3 : Fin k0_t3_loop.trips, ∀ a, (k0_off652 k0_t3) a + S1x1x1x16.size a ≤ S2x4x4x1024.size a
  k0_off653_inb : ∀ k0_t3 : Fin k0_t3_loop.trips, ∀ a, (k0_off653 k0_t3) a + S1x1x1x16.size a ≤ S4x4x4x1024.size a
  k0_off654_inb : ∀ k0_t3 : Fin k0_t3_loop.trips, ∀ a, (k0_off654 k0_t3) a + S1x1x1x16.size a ≤ S2x4x4x1024.size a
  k0_off655_inb : ∀ k0_t3 : Fin k0_t3_loop.trips, ∀ a, (k0_off655 k0_t3) a + S1x1x1x16.size a ≤ S4x4x4x1024.size a
  k0_off656_inb : ∀ k0_t3 : Fin k0_t3_loop.trips, ∀ a, (k0_off656 k0_t3) a + S1x1x1x16.size a ≤ S2x4x4x1024.size a
  k0_off657_inb : ∀ k0_t3 : Fin k0_t3_loop.trips, ∀ a, (k0_off657 k0_t3) a + S1x1x1x16.size a ≤ S4x4x4x1024.size a
  k0_off658_inb : ∀ k0_t3 : Fin k0_t3_loop.trips, ∀ a, (k0_off658 k0_t3) a + S1x1x1x16.size a ≤ S2x4x4x1024.size a
  k0_off659_inb : ∀ k0_t3 : Fin k0_t3_loop.trips, ∀ a, (k0_off659 k0_t3) a + S1x1x1x16.size a ≤ S4x4x4x1024.size a
  k0_off660_inb : ∀ k0_t3 : Fin k0_t3_loop.trips, ∀ a, (k0_off660 k0_t3) a + S1x1x1x16.size a ≤ S2x4x4x1024.size a
  k0_off661_inb : ∀ k0_t3 : Fin k0_t3_loop.trips, ∀ a, (k0_off661 k0_t3) a + S1x1x1x16.size a ≤ S4x4x4x1024.size a
  k0_off662_inb : ∀ k0_t3 : Fin k0_t3_loop.trips, ∀ a, (k0_off662 k0_t3) a + S1x1x1x16.size a ≤ S2x4x4x1024.size a
  k0_off663_inb : ∀ k0_t3 : Fin k0_t3_loop.trips, ∀ a, (k0_off663 k0_t3) a + S1x1x1x16.size a ≤ S4x4x4x1024.size a
  k0_off664_inb : ∀ k0_t3 : Fin k0_t3_loop.trips, ∀ a, (k0_off664 k0_t3) a + S1x1x1x16.size a ≤ S2x4x4x1024.size a
  k0_off665_inb : ∀ k0_t3 : Fin k0_t3_loop.trips, ∀ a, (k0_off665 k0_t3) a + S1x1x1x16.size a ≤ S4x4x4x1024.size a
  k0_off666_inb : ∀ k0_t3 : Fin k0_t3_loop.trips, ∀ a, (k0_off666 k0_t3) a + S1x1x1x16.size a ≤ S2x4x4x1024.size a
  k0_off667_inb : ∀ k0_t3 : Fin k0_t3_loop.trips, ∀ a, (k0_off667 k0_t3) a + S1x1x1x16.size a ≤ S4x4x4x1024.size a
  k0_off668_inb : ∀ k0_t3 : Fin k0_t3_loop.trips, ∀ a, (k0_off668 k0_t3) a + S1x1x1x16.size a ≤ S2x4x4x1024.size a
  k0_off669_inb : ∀ k0_t3 : Fin k0_t3_loop.trips, ∀ a, (k0_off669 k0_t3) a + S1x1x1x16.size a ≤ S4x4x4x1024.size a
  k0_off670_inb : ∀ k0_t3 : Fin k0_t3_loop.trips, ∀ a, (k0_off670 k0_t3) a + S1x1x1x16.size a ≤ S2x4x4x1024.size a
  k0_off671_inb : ∀ k0_t3 : Fin k0_t3_loop.trips, ∀ a, (k0_off671 k0_t3) a + S1x1x1x16.size a ≤ S4x4x4x1024.size a
  k0_off672_inb : ∀ k0_t3 : Fin k0_t3_loop.trips, ∀ a, (k0_off672 k0_t3) a + S1x1x1x16.size a ≤ S2x4x4x1024.size a
  k0_off673_inb : ∀ k0_t3 : Fin k0_t3_loop.trips, ∀ a, (k0_off673 k0_t3) a + S1x1x1x16.size a ≤ S4x4x4x1024.size a
  k0_off674_inb : ∀ k0_t3 : Fin k0_t3_loop.trips, ∀ a, (k0_off674 k0_t3) a + S1x1x1x16.size a ≤ S2x4x4x1024.size a
  k0_off675_inb : ∀ k0_t3 : Fin k0_t3_loop.trips, ∀ a, (k0_off675 k0_t3) a + S1x1x1x16.size a ≤ S4x4x4x1024.size a
  k0_off676_inb : ∀ k0_t3 : Fin k0_t3_loop.trips, ∀ a, (k0_off676 k0_t3) a + S1x1x1x16.size a ≤ S2x4x4x1024.size a
  k0_off677_inb : ∀ k0_t3 : Fin k0_t3_loop.trips, ∀ a, (k0_off677 k0_t3) a + S1x1x1x16.size a ≤ S4x4x4x1024.size a
  k0_off678_inb : ∀ k0_t3 : Fin k0_t3_loop.trips, ∀ a, (k0_off678 k0_t3) a + S1x1x1x16.size a ≤ S2x4x4x1024.size a
  k0_off679_inb : ∀ k0_t3 : Fin k0_t3_loop.trips, ∀ a, (k0_off679 k0_t3) a + S1x1x1x16.size a ≤ S4x4x4x1024.size a
  k0_off680_inb : ∀ k0_t3 : Fin k0_t3_loop.trips, ∀ a, (k0_off680 k0_t3) a + S1x1x1x16.size a ≤ S2x4x4x1024.size a
  k0_off681_inb : ∀ k0_t3 : Fin k0_t3_loop.trips, ∀ a, (k0_off681 k0_t3) a + S1x1x1x16.size a ≤ S4x4x4x1024.size a
  k0_off682_inb : ∀ k0_t3 : Fin k0_t3_loop.trips, ∀ a, (k0_off682 k0_t3) a + S1x1x1x16.size a ≤ S2x4x4x1024.size a
  k0_off683_inb : ∀ k0_t3 : Fin k0_t3_loop.trips, ∀ a, (k0_off683 k0_t3) a + S1x1x1x16.size a ≤ S4x4x4x1024.size a
  k0_off684_inb : ∀ k0_t3 : Fin k0_t3_loop.trips, ∀ a, (k0_off684 k0_t3) a + S1x1x1x16.size a ≤ S2x4x4x1024.size a
  k0_off685_inb : ∀ k0_t3 : Fin k0_t3_loop.trips, ∀ a, (k0_off685 k0_t3) a + S1x1x1x16.size a ≤ S4x4x4x1024.size a
  k0_off686_inb : ∀ k0_t3 : Fin k0_t3_loop.trips, ∀ a, (k0_off686 k0_t3) a + S1x1x1x16.size a ≤ S2x4x4x1024.size a
  k0_off687_inb : ∀ k0_t3 : Fin k0_t3_loop.trips, ∀ a, (k0_off687 k0_t3) a + S1x1x1x16.size a ≤ S4x4x4x1024.size a
  k0_off688_inb : ∀ k0_t3 : Fin k0_t3_loop.trips, ∀ a, (k0_off688 k0_t3) a + S1x1x1x16.size a ≤ S2x4x4x1024.size a
  k0_off689_inb : ∀ k0_t3 : Fin k0_t3_loop.trips, ∀ a, (k0_off689 k0_t3) a + S1x1x1x16.size a ≤ S4x4x4x1024.size a
  k0_off690_inb : ∀ k0_t3 : Fin k0_t3_loop.trips, ∀ a, (k0_off690 k0_t3) a + S1x1x1x16.size a ≤ S2x4x4x1024.size a
  k0_off691_inb : ∀ k0_t3 : Fin k0_t3_loop.trips, ∀ a, (k0_off691 k0_t3) a + S1x1x1x16.size a ≤ S4x4x4x1024.size a
  k0_off692_inb : ∀ k0_t3 : Fin k0_t3_loop.trips, ∀ a, (k0_off692 k0_t3) a + S1x1x1x16.size a ≤ S2x4x4x1024.size a
  k0_off693_inb : ∀ k0_t3 : Fin k0_t3_loop.trips, ∀ a, (k0_off693 k0_t3) a + S1x1x1x16.size a ≤ S4x4x4x1024.size a
  k0_off694_inb : ∀ k0_t3 : Fin k0_t3_loop.trips, ∀ a, (k0_off694 k0_t3) a + S1x1x1x16.size a ≤ S2x4x4x1024.size a
  k0_off695_inb : ∀ k0_t3 : Fin k0_t3_loop.trips, ∀ a, (k0_off695 k0_t3) a + S1x1x1x16.size a ≤ S4x4x4x1024.size a
  k0_off696_inb : ∀ k0_t3 : Fin k0_t3_loop.trips, ∀ a, (k0_off696 k0_t3) a + S1x1x1x16.size a ≤ S2x4x4x1024.size a
  k0_off697_inb : ∀ k0_t3 : Fin k0_t3_loop.trips, ∀ a, (k0_off697 k0_t3) a + S1x1x1x16.size a ≤ S4x4x4x1024.size a
  k0_off698_inb : ∀ k0_t3 : Fin k0_t3_loop.trips, ∀ a, (k0_off698 k0_t3) a + S1x1x1x16.size a ≤ S2x4x4x1024.size a
  k0_off699_inb : ∀ k0_t3 : Fin k0_t3_loop.trips, ∀ a, (k0_off699 k0_t3) a + S1x1x1x16.size a ≤ S4x4x4x1024.size a
  k0_off700_inb : ∀ k0_t3 : Fin k0_t3_loop.trips, ∀ a, (k0_off700 k0_t3) a + S1x1x1x16.size a ≤ S2x4x4x1024.size a
  k0_off701_inb : ∀ k0_t3 : Fin k0_t3_loop.trips, ∀ a, (k0_off701 k0_t3) a + S1x1x1x16.size a ≤ S4x4x4x1024.size a
  k0_off702_inb : ∀ k0_t3 : Fin k0_t3_loop.trips, ∀ a, (k0_off702 k0_t3) a + S1x1x1x16.size a ≤ S2x4x4x1024.size a
  k0_off703_inb : ∀ k0_t3 : Fin k0_t3_loop.trips, ∀ a, (k0_off703 k0_t3) a + S1x1x1x16.size a ≤ S4x4x4x1024.size a
  k0_off704_inb : ∀ k0_t3 : Fin k0_t3_loop.trips, ∀ a, (k0_off704 k0_t3) a + S1x1x1x16.size a ≤ S2x4x4x1024.size a
  k0_off705_inb : ∀ k0_t3 : Fin k0_t3_loop.trips, ∀ a, (k0_off705 k0_t3) a + S1x1x1x16.size a ≤ S4x4x4x1024.size a
  k0_off706_inb : ∀ k0_t3 : Fin k0_t3_loop.trips, ∀ a, (k0_off706 k0_t3) a + S1x1x1x16.size a ≤ S2x4x4x1024.size a
  k0_off707_inb : ∀ k0_t3 : Fin k0_t3_loop.trips, ∀ a, (k0_off707 k0_t3) a + S1x1x1x16.size a ≤ S4x4x4x1024.size a
  k0_off708_inb : ∀ k0_t3 : Fin k0_t3_loop.trips, ∀ a, (k0_off708 k0_t3) a + S1x1x1x16.size a ≤ S2x4x4x1024.size a
  k0_off709_inb : ∀ k0_t3 : Fin k0_t3_loop.trips, ∀ a, (k0_off709 k0_t3) a + S1x1x1x16.size a ≤ S4x4x4x1024.size a
  k0_off710_inb : ∀ k0_t3 : Fin k0_t3_loop.trips, ∀ a, (k0_off710 k0_t3) a + S1x1x1x16.size a ≤ S2x4x4x1024.size a
  k0_off711_inb : ∀ k0_t3 : Fin k0_t3_loop.trips, ∀ a, (k0_off711 k0_t3) a + S1x1x1x16.size a ≤ S4x4x4x1024.size a
  k0_off712_inb : ∀ k0_t3 : Fin k0_t3_loop.trips, ∀ a, (k0_off712 k0_t3) a + S1x1x1x16.size a ≤ S2x4x4x1024.size a
  k0_off713_inb : ∀ k0_t3 : Fin k0_t3_loop.trips, ∀ a, (k0_off713 k0_t3) a + S1x1x1x16.size a ≤ S4x4x4x1024.size a
  k0_off714_inb : ∀ k0_t3 : Fin k0_t3_loop.trips, ∀ a, (k0_off714 k0_t3) a + S1x1x1x16.size a ≤ S2x4x4x1024.size a
  k0_off715_inb : ∀ k0_t3 : Fin k0_t3_loop.trips, ∀ a, (k0_off715 k0_t3) a + S1x1x1x16.size a ≤ S4x4x4x1024.size a
  k0_off716_inb : ∀ k0_t3 : Fin k0_t3_loop.trips, ∀ a, (k0_off716 k0_t3) a + S1x1x1x16.size a ≤ S2x4x4x1024.size a
  k0_off717_inb : ∀ k0_t3 : Fin k0_t3_loop.trips, ∀ a, (k0_off717 k0_t3) a + S1x1x1x16.size a ≤ S4x4x4x1024.size a
  k0_off718_inb : ∀ k0_t3 : Fin k0_t3_loop.trips, ∀ a, (k0_off718 k0_t3) a + S1x1x1x16.size a ≤ S2x4x4x1024.size a
  k0_off719_inb : ∀ k0_t3 : Fin k0_t3_loop.trips, ∀ a, (k0_off719 k0_t3) a + S1x1x1x16.size a ≤ S4x4x4x1024.size a
  k0_off720_inb : ∀ k0_t3 : Fin k0_t3_loop.trips, ∀ a, (k0_off720 k0_t3) a + S1x1x1x16.size a ≤ S2x4x4x1024.size a
  k0_off721_inb : ∀ k0_t3 : Fin k0_t3_loop.trips, ∀ a, (k0_off721 k0_t3) a + S1x1x1x16.size a ≤ S4x4x4x1024.size a
  k0_off722_inb : ∀ k0_t3 : Fin k0_t3_loop.trips, ∀ a, (k0_off722 k0_t3) a + S1x1x1x16.size a ≤ S2x4x4x1024.size a
  k0_off723_inb : ∀ k0_t3 : Fin k0_t3_loop.trips, ∀ a, (k0_off723 k0_t3) a + S1x1x1x16.size a ≤ S4x4x4x1024.size a
  k0_off724_inb : ∀ k0_t3 : Fin k0_t3_loop.trips, ∀ a, (k0_off724 k0_t3) a + S1x1x1x16.size a ≤ S2x4x4x1024.size a
  k0_off725_inb : ∀ k0_t3 : Fin k0_t3_loop.trips, ∀ a, (k0_off725 k0_t3) a + S1x1x1x16.size a ≤ S4x4x4x1024.size a
  k0_off726_inb : ∀ k0_t3 : Fin k0_t3_loop.trips, ∀ a, (k0_off726 k0_t3) a + S1x1x1x16.size a ≤ S2x4x4x1024.size a
  k0_off727_inb : ∀ k0_t3 : Fin k0_t3_loop.trips, ∀ a, (k0_off727 k0_t3) a + S1x1x1x16.size a ≤ S4x4x4x1024.size a
  k0_off728_inb : ∀ k0_t3 : Fin k0_t3_loop.trips, ∀ a, (k0_off728 k0_t3) a + S1x1x1x16.size a ≤ S2x4x4x1024.size a
  k0_off729_inb : ∀ k0_t3 : Fin k0_t3_loop.trips, ∀ a, (k0_off729 k0_t3) a + S1x1x1x16.size a ≤ S4x4x4x1024.size a
  k0_off730_inb : ∀ k0_t3 : Fin k0_t3_loop.trips, ∀ a, (k0_off730 k0_t3) a + S1x1x1x16.size a ≤ S2x4x4x1024.size a
  k0_off731_inb : ∀ k0_t3 : Fin k0_t3_loop.trips, ∀ a, (k0_off731 k0_t3) a + S1x1x1x16.size a ≤ S4x4x4x1024.size a
  k0_off732_inb : ∀ k0_t3 : Fin k0_t3_loop.trips, ∀ a, (k0_off732 k0_t3) a + S1x1x1x16.size a ≤ S2x4x4x1024.size a
  k0_off733_inb : ∀ k0_t3 : Fin k0_t3_loop.trips, ∀ a, (k0_off733 k0_t3) a + S1x1x1x16.size a ≤ S4x4x4x1024.size a
  k0_off734_inb : ∀ k0_t3 : Fin k0_t3_loop.trips, ∀ a, (k0_off734 k0_t3) a + S1x1x1x16.size a ≤ S2x4x4x1024.size a
  k0_off735_inb : ∀ k0_t3 : Fin k0_t3_loop.trips, ∀ a, (k0_off735 k0_t3) a + S1x1x1x16.size a ≤ S4x4x4x1024.size a
  k0_off736_inb : ∀ k0_t3 : Fin k0_t3_loop.trips, ∀ a, (k0_off736 k0_t3) a + S1x1x1x16.size a ≤ S2x4x4x1024.size a
  k0_off737_inb : ∀ k0_t3 : Fin k0_t3_loop.trips, ∀ a, (k0_off737 k0_t3) a + S1x1x1x16.size a ≤ S4x4x4x1024.size a
  k0_off738_inb : ∀ k0_t3 : Fin k0_t3_loop.trips, ∀ a, (k0_off738 k0_t3) a + S1x1x1x16.size a ≤ S2x4x4x1024.size a
  k0_off739_inb : ∀ k0_t3 : Fin k0_t3_loop.trips, ∀ a, (k0_off739 k0_t3) a + S1x1x1x16.size a ≤ S4x4x4x1024.size a
  k0_off740_inb : ∀ k0_t3 : Fin k0_t3_loop.trips, ∀ a, (k0_off740 k0_t3) a + S1x1x1x16.size a ≤ S2x4x4x1024.size a
  k0_off741_inb : ∀ k0_t3 : Fin k0_t3_loop.trips, ∀ a, (k0_off741 k0_t3) a + S1x1x1x16.size a ≤ S4x4x4x1024.size a
  k0_off742_inb : ∀ k0_t3 : Fin k0_t3_loop.trips, ∀ a, (k0_off742 k0_t3) a + S1x1x1x16.size a ≤ S2x4x4x1024.size a
  k0_off743_inb : ∀ k0_t3 : Fin k0_t3_loop.trips, ∀ a, (k0_off743 k0_t3) a + S1x1x1x16.size a ≤ S4x4x4x1024.size a
  k0_off744_inb : ∀ k0_t3 : Fin k0_t3_loop.trips, ∀ a, (k0_off744 k0_t3) a + S1x1x1x16.size a ≤ S2x4x4x1024.size a
  k0_off745_inb : ∀ k0_t3 : Fin k0_t3_loop.trips, ∀ a, (k0_off745 k0_t3) a + S1x1x1x16.size a ≤ S4x4x4x1024.size a
  k0_off746_inb : ∀ k0_t3 : Fin k0_t3_loop.trips, ∀ a, (k0_off746 k0_t3) a + S1x1x1x16.size a ≤ S2x4x4x1024.size a
  k0_off747_inb : ∀ k0_t3 : Fin k0_t3_loop.trips, ∀ a, (k0_off747 k0_t3) a + S1x1x1x16.size a ≤ S4x4x4x1024.size a
  k0_off748_inb : ∀ k0_t3 : Fin k0_t3_loop.trips, ∀ a, (k0_off748 k0_t3) a + S1x1x1x16.size a ≤ S2x4x4x1024.size a
  k0_off749_inb : ∀ k0_t3 : Fin k0_t3_loop.trips, ∀ a, (k0_off749 k0_t3) a + S1x1x1x16.size a ≤ S4x4x4x1024.size a
  k0_off750_inb : ∀ k0_t3 : Fin k0_t3_loop.trips, ∀ a, (k0_off750 k0_t3) a + S1x1x1x16.size a ≤ S2x4x4x1024.size a
  k0_off751_inb : ∀ k0_t3 : Fin k0_t3_loop.trips, ∀ a, (k0_off751 k0_t3) a + S1x1x1x16.size a ≤ S4x4x4x1024.size a
  k0_off752_inb : ∀ k0_t3 : Fin k0_t3_loop.trips, ∀ a, (k0_off752 k0_t3) a + S1x1x1x16.size a ≤ S2x4x4x1024.size a
  k0_off753_inb : ∀ k0_t3 : Fin k0_t3_loop.trips, ∀ a, (k0_off753 k0_t3) a + S1x1x1x16.size a ≤ S4x4x4x1024.size a
  k0_off754_inb : ∀ k0_t3 : Fin k0_t3_loop.trips, ∀ a, (k0_off754 k0_t3) a + S1x1x1x16.size a ≤ S2x4x4x1024.size a
  k0_off755_inb : ∀ k0_t3 : Fin k0_t3_loop.trips, ∀ a, (k0_off755 k0_t3) a + S1x1x1x16.size a ≤ S4x4x4x1024.size a
  k0_off756_inb : ∀ k0_t3 : Fin k0_t3_loop.trips, ∀ a, (k0_off756 k0_t3) a + S1x1x1x16.size a ≤ S2x4x4x1024.size a
  k0_off757_inb : ∀ k0_t3 : Fin k0_t3_loop.trips, ∀ a, (k0_off757 k0_t3) a + S1x1x1x16.size a ≤ S4x4x4x1024.size a
  k0_off758_inb : ∀ k0_t3 : Fin k0_t3_loop.trips, ∀ a, (k0_off758 k0_t3) a + S1x1x1x16.size a ≤ S2x4x4x1024.size a
  k0_off759_inb : ∀ k0_t3 : Fin k0_t3_loop.trips, ∀ a, (k0_off759 k0_t3) a + S1x1x1x16.size a ≤ S4x4x4x1024.size a
  k0_off760_inb : ∀ k0_t3 : Fin k0_t3_loop.trips, ∀ a, (k0_off760 k0_t3) a + S1x1x1x16.size a ≤ S2x4x4x1024.size a
  k0_off761_inb : ∀ k0_t3 : Fin k0_t3_loop.trips, ∀ a, (k0_off761 k0_t3) a + S1x1x1x16.size a ≤ S4x4x4x1024.size a
  k0_off762_inb : ∀ k0_t3 : Fin k0_t3_loop.trips, ∀ a, (k0_off762 k0_t3) a + S1x1x1x16.size a ≤ S2x4x4x1024.size a
  k0_off763_inb : ∀ k0_t3 : Fin k0_t3_loop.trips, ∀ a, (k0_off763 k0_t3) a + S1x1x1x16.size a ≤ S4x4x4x1024.size a
  k0_off764_inb : ∀ k0_t3 : Fin k0_t3_loop.trips, ∀ a, (k0_off764 k0_t3) a + S1x1x1x16.size a ≤ S2x4x4x1024.size a
  k0_off765_inb : ∀ k0_t3 : Fin k0_t3_loop.trips, ∀ a, (k0_off765 k0_t3) a + S1x1x1x16.size a ≤ S4x4x4x1024.size a
  k0_off766_inb : ∀ k0_t3 : Fin k0_t3_loop.trips, ∀ a, (k0_off766 k0_t3) a + S1x1x1x16.size a ≤ S2x4x4x1024.size a
  k0_off767_inb : ∀ k0_t3 : Fin k0_t3_loop.trips, ∀ a, (k0_off767 k0_t3) a + S1x1x1x16.size a ≤ S4x4x4x1024.size a
  k0_off768_inb : ∀ k0_t3 : Fin k0_t3_loop.trips, ∀ a, (k0_off768 k0_t3) a + S1x1x1x16.size a ≤ S2x4x4x1024.size a
  k0_off769_inb : ∀ k0_t3 : Fin k0_t3_loop.trips, ∀ a, (k0_off769 k0_t3) a + S1x1x1x16.size a ≤ S4x4x4x1024.size a
  k0_off770_inb : ∀ k0_t3 : Fin k0_t3_loop.trips, ∀ a, (k0_off770 k0_t3) a + S1x1x1x16.size a ≤ S2x4x4x1024.size a
  k0_off771_inb : ∀ k0_t3 : Fin k0_t3_loop.trips, ∀ a, (k0_off771 k0_t3) a + S1x1x1x16.size a ≤ S4x4x4x1024.size a
  k0_off772_inb : ∀ k0_t3 : Fin k0_t3_loop.trips, ∀ a, (k0_off772 k0_t3) a + S1x1x1x16.size a ≤ S2x4x4x1024.size a
  k0_off773_inb : ∀ k0_t3 : Fin k0_t3_loop.trips, ∀ a, (k0_off773 k0_t3) a + S1x1x1x16.size a ≤ S4x4x4x1024.size a
  k0_off774_inb : ∀ k0_t3 : Fin k0_t3_loop.trips, ∀ a, (k0_off774 k0_t3) a + S1x1x1x16.size a ≤ S2x4x4x1024.size a
  k0_off775_inb : ∀ k0_t3 : Fin k0_t3_loop.trips, ∀ a, (k0_off775 k0_t3) a + S1x1x1x16.size a ≤ S4x4x4x1024.size a
  k0_off776_inb : ∀ k0_t3 : Fin k0_t3_loop.trips, ∀ a, (k0_off776 k0_t3) a + S1x1x1x16.size a ≤ S2x4x4x1024.size a
  k0_off777_inb : ∀ k0_t3 : Fin k0_t3_loop.trips, ∀ a, (k0_off777 k0_t3) a + S1x1x1x16.size a ≤ S4x4x4x1024.size a
  k0_off778_inb : ∀ k0_t3 : Fin k0_t3_loop.trips, ∀ a, (k0_off778 k0_t3) a + S1x1x1x16.size a ≤ S2x4x4x1024.size a
  k0_off779_inb : ∀ k0_t3 : Fin k0_t3_loop.trips, ∀ a, (k0_off779 k0_t3) a + S1x1x1x16.size a ≤ S4x4x4x1024.size a
  k0_off780_inb : ∀ k0_t3 : Fin k0_t3_loop.trips, ∀ a, (k0_off780 k0_t3) a + S1x1x1x16.size a ≤ S2x4x4x1024.size a
  k0_off781_inb : ∀ k0_t3 : Fin k0_t3_loop.trips, ∀ a, (k0_off781 k0_t3) a + S1x1x1x16.size a ≤ S4x4x4x1024.size a
  k0_off782_inb : ∀ k0_t3 : Fin k0_t3_loop.trips, ∀ a, (k0_off782 k0_t3) a + S1x1x1x16.size a ≤ S2x4x4x1024.size a
  k0_off783_inb : ∀ k0_t3 : Fin k0_t3_loop.trips, ∀ a, (k0_off783 k0_t3) a + S1x1x1x16.size a ≤ S4x4x4x1024.size a
  k0_off784_inb : ∀ k0_t3 : Fin k0_t3_loop.trips, ∀ a, (k0_off784 k0_t3) a + S1x1x1x16.size a ≤ S2x4x4x1024.size a
  k0_off785_inb : ∀ k0_t3 : Fin k0_t3_loop.trips, ∀ a, (k0_off785 k0_t3) a + S1x1x1x16.size a ≤ S4x4x4x1024.size a
  k0_off786_inb : ∀ k0_t3 : Fin k0_t3_loop.trips, ∀ a, (k0_off786 k0_t3) a + S1x1x1x16.size a ≤ S2x4x4x1024.size a
  k0_off787_inb : ∀ k0_t3 : Fin k0_t3_loop.trips, ∀ a, (k0_off787 k0_t3) a + S1x1x1x16.size a ≤ S4x4x4x1024.size a
  k0_off788_inb : ∀ k0_t3 : Fin k0_t3_loop.trips, ∀ a, (k0_off788 k0_t3) a + S1x1x1x16.size a ≤ S2x4x4x1024.size a
  k0_off789_inb : ∀ k0_t3 : Fin k0_t3_loop.trips, ∀ a, (k0_off789 k0_t3) a + S1x1x1x16.size a ≤ S4x4x4x1024.size a
  k0_off790_inb : ∀ k0_t3 : Fin k0_t3_loop.trips, ∀ a, (k0_off790 k0_t3) a + S1x1x1x16.size a ≤ S2x4x4x1024.size a
  k0_off791_inb : ∀ k0_t3 : Fin k0_t3_loop.trips, ∀ a, (k0_off791 k0_t3) a + S1x1x1x16.size a ≤ S4x4x4x1024.size a
  k0_off792_inb : ∀ k0_t3 : Fin k0_t3_loop.trips, ∀ a, (k0_off792 k0_t3) a + S1x1x1x16.size a ≤ S2x4x4x1024.size a
  k0_off793_inb : ∀ k0_t3 : Fin k0_t3_loop.trips, ∀ a, (k0_off793 k0_t3) a + S1x1x1x16.size a ≤ S4x4x4x1024.size a
  k0_off794_inb : ∀ k0_t3 : Fin k0_t3_loop.trips, ∀ a, (k0_off794 k0_t3) a + S1x1x1x16.size a ≤ S2x4x4x1024.size a
  k0_off795_inb : ∀ k0_t3 : Fin k0_t3_loop.trips, ∀ a, (k0_off795 k0_t3) a + S1x1x1x16.size a ≤ S4x4x4x1024.size a
  k0_off796_inb : ∀ k0_t3 : Fin k0_t3_loop.trips, ∀ a, (k0_off796 k0_t3) a + S1x1x1x16.size a ≤ S2x4x4x1024.size a
  k0_off797_inb : ∀ k0_t3 : Fin k0_t3_loop.trips, ∀ a, (k0_off797 k0_t3) a + S1x1x1x16.size a ≤ S4x4x4x1024.size a
  k0_off798_inb : ∀ k0_t3 : Fin k0_t3_loop.trips, ∀ a, (k0_off798 k0_t3) a + S1x1x1x16.size a ≤ S2x4x4x1024.size a
  k0_off799_inb : ∀ k0_t3 : Fin k0_t3_loop.trips, ∀ a, (k0_off799 k0_t3) a + S1x1x1x16.size a ≤ S4x4x4x1024.size a
  k0_off800_inb : ∀ k0_t3 : Fin k0_t3_loop.trips, ∀ a, (k0_off800 k0_t3) a + S1x1x1x16.size a ≤ S2x4x4x1024.size a
  k0_off801_inb : ∀ k0_t3 : Fin k0_t3_loop.trips, ∀ a, (k0_off801 k0_t3) a + S1x1x1x16.size a ≤ S4x4x4x1024.size a
  k0_off802_inb : ∀ k0_t3 : Fin k0_t3_loop.trips, ∀ a, (k0_off802 k0_t3) a + S1x1x1x16.size a ≤ S2x4x4x1024.size a
  k0_off803_inb : ∀ k0_t3 : Fin k0_t3_loop.trips, ∀ a, (k0_off803 k0_t3) a + S1x1x1x16.size a ≤ S4x4x4x1024.size a
  k0_off804_inb : ∀ k0_t3 : Fin k0_t3_loop.trips, ∀ a, (k0_off804 k0_t3) a + S1x1x1x16.size a ≤ S2x4x4x1024.size a
  k0_off805_inb : ∀ k0_t3 : Fin k0_t3_loop.trips, ∀ a, (k0_off805 k0_t3) a + S1x1x1x16.size a ≤ S4x4x4x1024.size a
  k0_off806_inb : ∀ k0_t3 : Fin k0_t3_loop.trips, ∀ a, (k0_off806 k0_t3) a + S1x1x1x16.size a ≤ S2x4x4x1024.size a
  k0_off807_inb : ∀ k0_t3 : Fin k0_t3_loop.trips, ∀ a, (k0_off807 k0_t3) a + S1x1x1x16.size a ≤ S4x4x4x1024.size a
  k0_off808_inb : ∀ k0_t3 : Fin k0_t3_loop.trips, ∀ a, (k0_off808 k0_t3) a + S1x1x1x16.size a ≤ S2x4x4x1024.size a
  k0_off809_inb : ∀ k0_t3 : Fin k0_t3_loop.trips, ∀ a, (k0_off809 k0_t3) a + S1x1x1x16.size a ≤ S4x4x4x1024.size a
  k0_off810_inb : ∀ k0_t3 : Fin k0_t3_loop.trips, ∀ a, (k0_off810 k0_t3) a + S1x1x1x16.size a ≤ S2x4x4x1024.size a
  k0_off811_inb : ∀ k0_t3 : Fin k0_t3_loop.trips, ∀ a, (k0_off811 k0_t3) a + S1x1x1x16.size a ≤ S4x4x4x1024.size a
  k0_off812_inb : ∀ k0_t3 : Fin k0_t3_loop.trips, ∀ a, (k0_off812 k0_t3) a + S1x1x1x16.size a ≤ S2x4x4x1024.size a
  k0_off813_inb : ∀ k0_t3 : Fin k0_t3_loop.trips, ∀ a, (k0_off813 k0_t3) a + S1x1x1x16.size a ≤ S4x4x4x1024.size a
  k0_off814_inb : ∀ k0_t3 : Fin k0_t3_loop.trips, ∀ a, (k0_off814 k0_t3) a + S1x1x1x16.size a ≤ S2x4x4x1024.size a
  k0_off815_inb : ∀ k0_t3 : Fin k0_t3_loop.trips, ∀ a, (k0_off815 k0_t3) a + S1x1x1x16.size a ≤ S4x4x4x1024.size a
  k0_off816_inb : ∀ k0_t3 : Fin k0_t3_loop.trips, ∀ a, (k0_off816 k0_t3) a + S1x1x1x16.size a ≤ S2x4x4x1024.size a
  k0_off817_inb : ∀ k0_t3 : Fin k0_t3_loop.trips, ∀ a, (k0_off817 k0_t3) a + S1x1x1x16.size a ≤ S4x4x4x1024.size a
  k0_off818_inb : ∀ k0_t3 : Fin k0_t3_loop.trips, ∀ a, (k0_off818 k0_t3) a + S1x1x1x16.size a ≤ S2x4x4x1024.size a
  k0_off819_inb : ∀ k0_t3 : Fin k0_t3_loop.trips, ∀ a, (k0_off819 k0_t3) a + S1x1x1x16.size a ≤ S4x4x4x1024.size a
  k0_off820_inb : ∀ k0_t3 : Fin k0_t3_loop.trips, ∀ a, (k0_off820 k0_t3) a + S1x1x1x16.size a ≤ S2x4x4x1024.size a
  k0_off821_inb : ∀ k0_t3 : Fin k0_t3_loop.trips, ∀ a, (k0_off821 k0_t3) a + S1x1x1x16.size a ≤ S4x4x4x1024.size a
  k0_off822_inb : ∀ k0_t3 : Fin k0_t3_loop.trips, ∀ a, (k0_off822 k0_t3) a + S1x1x1x16.size a ≤ S2x4x4x1024.size a
  k0_off823_inb : ∀ k0_t3 : Fin k0_t3_loop.trips, ∀ a, (k0_off823 k0_t3) a + S1x1x1x16.size a ≤ S4x4x4x1024.size a
  k0_off824_inb : ∀ k0_t3 : Fin k0_t3_loop.trips, ∀ a, (k0_off824 k0_t3) a + S1x1x1x16.size a ≤ S2x4x4x1024.size a
  k0_off825_inb : ∀ k0_t3 : Fin k0_t3_loop.trips, ∀ a, (k0_off825 k0_t3) a + S1x1x1x16.size a ≤ S4x4x4x1024.size a
  k0_off826_inb : ∀ k0_t3 : Fin k0_t3_loop.trips, ∀ a, (k0_off826 k0_t3) a + S1x1x1x16.size a ≤ S2x4x4x1024.size a
  k0_off827_inb : ∀ k0_t3 : Fin k0_t3_loop.trips, ∀ a, (k0_off827 k0_t3) a + S1x1x1x16.size a ≤ S4x4x4x1024.size a
  k0_off828_inb : ∀ k0_t3 : Fin k0_t3_loop.trips, ∀ a, (k0_off828 k0_t3) a + S1x1x1x16.size a ≤ S2x4x4x1024.size a
  k0_off829_inb : ∀ k0_t3 : Fin k0_t3_loop.trips, ∀ a, (k0_off829 k0_t3) a + S1x1x1x16.size a ≤ S4x4x4x1024.size a
  k0_off830_inb : ∀ k0_t3 : Fin k0_t3_loop.trips, ∀ a, (k0_off830 k0_t3) a + S1x1x1x16.size a ≤ S2x4x4x1024.size a
  k0_off831_inb : ∀ k0_t3 : Fin k0_t3_loop.trips, ∀ a, (k0_off831 k0_t3) a + S1x1x1x16.size a ≤ S4x4x4x1024.size a
  k0_off832_inb : ∀ k0_t3 : Fin k0_t3_loop.trips, ∀ a, (k0_off832 k0_t3) a + S1x1x1x16.size a ≤ S2x4x4x1024.size a
  k0_off833_inb : ∀ k0_t3 : Fin k0_t3_loop.trips, ∀ a, (k0_off833 k0_t3) a + S1x1x1x16.size a ≤ S4x4x4x1024.size a
  k0_off834_inb : ∀ k0_t3 : Fin k0_t3_loop.trips, ∀ a, (k0_off834 k0_t3) a + S1x1x1x16.size a ≤ S2x4x4x1024.size a
  k0_off835_inb : ∀ k0_t3 : Fin k0_t3_loop.trips, ∀ a, (k0_off835 k0_t3) a + S1x1x1x16.size a ≤ S4x4x4x1024.size a
  k0_off836_inb : ∀ k0_t3 : Fin k0_t3_loop.trips, ∀ a, (k0_off836 k0_t3) a + S1x1x1x16.size a ≤ S2x4x4x1024.size a
  k0_off837_inb : ∀ k0_t3 : Fin k0_t3_loop.trips, ∀ a, (k0_off837 k0_t3) a + S1x1x1x16.size a ≤ S4x4x4x1024.size a
  k0_off838_inb : ∀ k0_t3 : Fin k0_t3_loop.trips, ∀ a, (k0_off838 k0_t3) a + S1x1x1x16.size a ≤ S2x4x4x1024.size a
  k0_off839_inb : ∀ k0_t3 : Fin k0_t3_loop.trips, ∀ a, (k0_off839 k0_t3) a + S1x1x1x16.size a ≤ S4x4x4x1024.size a
  k0_off840_inb : ∀ k0_t3 : Fin k0_t3_loop.trips, ∀ a, (k0_off840 k0_t3) a + S1x1x1x16.size a ≤ S2x4x4x1024.size a
  k0_off841_inb : ∀ k0_t3 : Fin k0_t3_loop.trips, ∀ a, (k0_off841 k0_t3) a + S1x1x1x16.size a ≤ S4x4x4x1024.size a
  k0_off842_inb : ∀ k0_t3 : Fin k0_t3_loop.trips, ∀ a, (k0_off842 k0_t3) a + S1x1x1x16.size a ≤ S2x4x4x1024.size a
  k0_off843_inb : ∀ k0_t3 : Fin k0_t3_loop.trips, ∀ a, (k0_off843 k0_t3) a + S1x1x1x16.size a ≤ S4x4x4x1024.size a
  k0_off844_inb : ∀ k0_t3 : Fin k0_t3_loop.trips, ∀ a, (k0_off844 k0_t3) a + S1x1x1x16.size a ≤ S2x4x4x1024.size a
  k0_off845_inb : ∀ k0_t3 : Fin k0_t3_loop.trips, ∀ a, (k0_off845 k0_t3) a + S1x1x1x16.size a ≤ S4x4x4x1024.size a
  k0_off846_inb : ∀ k0_t3 : Fin k0_t3_loop.trips, ∀ a, (k0_off846 k0_t3) a + S1x1x1x16.size a ≤ S2x4x4x1024.size a
  k0_off847_inb : ∀ k0_t3 : Fin k0_t3_loop.trips, ∀ a, (k0_off847 k0_t3) a + S1x1x1x16.size a ≤ S4x4x4x1024.size a
  k0_off848_inb : ∀ k0_t3 : Fin k0_t3_loop.trips, ∀ a, (k0_off848 k0_t3) a + S1x1x1x16.size a ≤ S2x4x4x1024.size a
  k0_off849_inb : ∀ k0_t3 : Fin k0_t3_loop.trips, ∀ a, (k0_off849 k0_t3) a + S1x1x1x16.size a ≤ S4x4x4x1024.size a
  k0_off850_inb : ∀ k0_t3 : Fin k0_t3_loop.trips, ∀ a, (k0_off850 k0_t3) a + S1x1x1x16.size a ≤ S2x4x4x1024.size a
  k0_off851_inb : ∀ k0_t3 : Fin k0_t3_loop.trips, ∀ a, (k0_off851 k0_t3) a + S1x1x1x16.size a ≤ S4x4x4x1024.size a
  k0_off852_inb : ∀ k0_t3 : Fin k0_t3_loop.trips, ∀ a, (k0_off852 k0_t3) a + S1x1x1x16.size a ≤ S2x4x4x1024.size a
  k0_off853_inb : ∀ k0_t3 : Fin k0_t3_loop.trips, ∀ a, (k0_off853 k0_t3) a + S1x1x1x16.size a ≤ S4x4x4x1024.size a
  k0_off854_inb : ∀ k0_t3 : Fin k0_t3_loop.trips, ∀ a, (k0_off854 k0_t3) a + S1x1x1x16.size a ≤ S2x4x4x1024.size a
  k0_off855_inb : ∀ k0_t3 : Fin k0_t3_loop.trips, ∀ a, (k0_off855 k0_t3) a + S1x1x1x16.size a ≤ S4x4x4x1024.size a
  k0_off856_inb : ∀ k0_t3 : Fin k0_t3_loop.trips, ∀ a, (k0_off856 k0_t3) a + S1x1x1x16.size a ≤ S2x4x4x1024.size a
  k0_off857_inb : ∀ k0_t3 : Fin k0_t3_loop.trips, ∀ a, (k0_off857 k0_t3) a + S1x1x1x16.size a ≤ S4x4x4x1024.size a
  k0_off858_inb : ∀ k0_t3 : Fin k0_t3_loop.trips, ∀ a, (k0_off858 k0_t3) a + S1x1x1x16.size a ≤ S2x4x4x1024.size a
  k0_off859_inb : ∀ k0_t3 : Fin k0_t3_loop.trips, ∀ a, (k0_off859 k0_t3) a + S1x1x1x16.size a ≤ S4x4x4x1024.size a
  k0_off860_inb : ∀ k0_t3 : Fin k0_t3_loop.trips, ∀ a, (k0_off860 k0_t3) a + S1x1x1x16.size a ≤ S2x4x4x1024.size a
  k0_off861_inb : ∀ k0_t3 : Fin k0_t3_loop.trips, ∀ a, (k0_off861 k0_t3) a + S1x1x1x16.size a ≤ S4x4x4x1024.size a
  k0_off862_inb : ∀ k0_t3 : Fin k0_t3_loop.trips, ∀ a, (k0_off862 k0_t3) a + S1x1x1x16.size a ≤ S2x4x4x1024.size a
  k0_off863_inb : ∀ k0_t3 : Fin k0_t3_loop.trips, ∀ a, (k0_off863 k0_t3) a + S1x1x1x16.size a ≤ S4x4x4x1024.size a
  k0_off864_inb : ∀ k0_t3 : Fin k0_t3_loop.trips, ∀ a, (k0_off864 k0_t3) a + S1x1x1x16.size a ≤ S2x4x4x1024.size a
  k0_off865_inb : ∀ k0_t3 : Fin k0_t3_loop.trips, ∀ a, (k0_off865 k0_t3) a + S1x1x1x16.size a ≤ S4x4x4x1024.size a
  k0_off866_inb : ∀ k0_t3 : Fin k0_t3_loop.trips, ∀ a, (k0_off866 k0_t3) a + S1x1x1x16.size a ≤ S2x4x4x1024.size a
  k0_off867_inb : ∀ k0_t3 : Fin k0_t3_loop.trips, ∀ a, (k0_off867 k0_t3) a + S1x1x1x16.size a ≤ S4x4x4x1024.size a
  k0_off868_inb : ∀ k0_t3 : Fin k0_t3_loop.trips, ∀ a, (k0_off868 k0_t3) a + S1x1x1x16.size a ≤ S2x4x4x1024.size a
  k0_off869_inb : ∀ k0_t3 : Fin k0_t3_loop.trips, ∀ a, (k0_off869 k0_t3) a + S1x1x1x16.size a ≤ S4x4x4x1024.size a
  k0_off870_inb : ∀ k0_t3 : Fin k0_t3_loop.trips, ∀ a, (k0_off870 k0_t3) a + S1x1x1x16.size a ≤ S2x4x4x1024.size a
  k0_off871_inb : ∀ k0_t3 : Fin k0_t3_loop.trips, ∀ a, (k0_off871 k0_t3) a + S1x1x1x16.size a ≤ S4x4x4x1024.size a
  k0_off872_inb : ∀ k0_t3 : Fin k0_t3_loop.trips, ∀ a, (k0_off872 k0_t3) a + S1x1x1x16.size a ≤ S2x4x4x1024.size a
  k0_off873_inb : ∀ k0_t3 : Fin k0_t3_loop.trips, ∀ a, (k0_off873 k0_t3) a + S1x1x1x16.size a ≤ S4x4x4x1024.size a
  k0_off874_inb : ∀ k0_t3 : Fin k0_t3_loop.trips, ∀ a, (k0_off874 k0_t3) a + S1x1x1x16.size a ≤ S2x4x4x1024.size a
  k0_off875_inb : ∀ k0_t3 : Fin k0_t3_loop.trips, ∀ a, (k0_off875 k0_t3) a + S1x1x1x16.size a ≤ S4x4x4x1024.size a
  k0_off876_inb : ∀ k0_t3 : Fin k0_t3_loop.trips, ∀ a, (k0_off876 k0_t3) a + S1x1x1x16.size a ≤ S2x4x4x1024.size a
  k0_off877_inb : ∀ k0_t3 : Fin k0_t3_loop.trips, ∀ a, (k0_off877 k0_t3) a + S1x1x1x16.size a ≤ S4x4x4x1024.size a
  k0_off878_inb : ∀ k0_t3 : Fin k0_t3_loop.trips, ∀ a, (k0_off878 k0_t3) a + S1x1x1x16.size a ≤ S2x4x4x1024.size a
  k0_off879_inb : ∀ k0_t3 : Fin k0_t3_loop.trips, ∀ a, (k0_off879 k0_t3) a + S1x1x1x16.size a ≤ S4x4x4x1024.size a
  k0_off880_inb : ∀ k0_t3 : Fin k0_t3_loop.trips, ∀ a, (k0_off880 k0_t3) a + S1x1x1x16.size a ≤ S2x4x4x1024.size a
  k0_off881_inb : ∀ k0_t3 : Fin k0_t3_loop.trips, ∀ a, (k0_off881 k0_t3) a + S1x1x1x16.size a ≤ S4x4x4x1024.size a
  k0_off882_inb : ∀ k0_t3 : Fin k0_t3_loop.trips, ∀ a, (k0_off882 k0_t3) a + S1x1x1x16.size a ≤ S2x4x4x1024.size a
  k0_off883_inb : ∀ k0_t3 : Fin k0_t3_loop.trips, ∀ a, (k0_off883 k0_t3) a + S1x1x1x16.size a ≤ S4x4x4x1024.size a
  k0_off884_inb : ∀ k0_t3 : Fin k0_t3_loop.trips, ∀ a, (k0_off884 k0_t3) a + S1x1x1x16.size a ≤ S2x4x4x1024.size a
  k0_off885_inb : ∀ k0_t3 : Fin k0_t3_loop.trips, ∀ a, (k0_off885 k0_t3) a + S1x1x1x16.size a ≤ S4x4x4x1024.size a
  k0_off886_inb : ∀ k0_t3 : Fin k0_t3_loop.trips, ∀ a, (k0_off886 k0_t3) a + S1x1x1x16.size a ≤ S2x4x4x1024.size a
  k0_off887_inb : ∀ k0_t3 : Fin k0_t3_loop.trips, ∀ a, (k0_off887 k0_t3) a + S1x1x1x16.size a ≤ S4x4x4x1024.size a
  k0_off888_inb : ∀ k0_t3 : Fin k0_t3_loop.trips, ∀ a, (k0_off888 k0_t3) a + S1x1x1x16.size a ≤ S2x4x4x1024.size a
  k0_off889_inb : ∀ k0_t3 : Fin k0_t3_loop.trips, ∀ a, (k0_off889 k0_t3) a + S1x1x1x16.size a ≤ S4x4x4x1024.size a
  k0_off890_inb : ∀ k0_t3 : Fin k0_t3_loop.trips, ∀ a, (k0_off890 k0_t3) a + S1x1x1x16.size a ≤ S2x4x4x1024.size a
  k0_off891_inb : ∀ k0_t3 : Fin k0_t3_loop.trips, ∀ a, (k0_off891 k0_t3) a + S1x1x1x16.size a ≤ S4x4x4x1024.size a
  k0_off892_inb : ∀ k0_t3 : Fin k0_t3_loop.trips, ∀ a, (k0_off892 k0_t3) a + S1x1x1x16.size a ≤ S2x4x4x1024.size a
  k0_off893_inb : ∀ k0_t3 : Fin k0_t3_loop.trips, ∀ a, (k0_off893 k0_t3) a + S1x1x1x16.size a ≤ S4x4x4x1024.size a
  k0_off894_inb : ∀ k0_t3 : Fin k0_t3_loop.trips, ∀ a, (k0_off894 k0_t3) a + S1x1x1x16.size a ≤ S2x4x4x1024.size a
  k0_off895_inb : ∀ k0_t3 : Fin k0_t3_loop.trips, ∀ a, (k0_off895 k0_t3) a + S1x1x1x16.size a ≤ S4x4x4x1024.size a
  k0_off896_inb : ∀ k0_t3 : Fin k0_t3_loop.trips, ∀ a, (k0_off896 k0_t3) a + S1x1x1x16.size a ≤ S2x4x4x1024.size a
  k0_off897_inb : ∀ k0_t3 : Fin k0_t3_loop.trips, ∀ a, (k0_off897 k0_t3) a + S1x1x16.size a ≤ S4x4x1024.size a
  k0_off898_inb : ∀ k0_t3 : Fin k0_t3_loop.trips, ∀ a, (k0_off898 k0_t3) a + S1x1x16.size a ≤ S4x4x1024.size a
  k0_off899_inb : ∀ k0_t3 : Fin k0_t3_loop.trips, ∀ a, (k0_off899 k0_t3) a + S1x1x16.size a ≤ S4x4x1024.size a
  k0_off900_inb : ∀ k0_t3 : Fin k0_t3_loop.trips, ∀ a, (k0_off900 k0_t3) a + S1x1x16.size a ≤ S4x4x1024.size a
  k0_off901_inb : ∀ k0_t3 : Fin k0_t3_loop.trips, ∀ a, (k0_off901 k0_t3) a + S1x1x16.size a ≤ S4x4x1024.size a
  k0_off902_inb : ∀ k0_t3 : Fin k0_t3_loop.trips, ∀ a, (k0_off902 k0_t3) a + S1x1x16.size a ≤ S4x4x1024.size a
  k0_off903_inb : ∀ k0_t3 : Fin k0_t3_loop.trips, ∀ a, (k0_off903 k0_t3) a + S1x1x16.size a ≤ S4x4x1024.size a
  k0_off904_inb : ∀ k0_t3 : Fin k0_t3_loop.trips, ∀ a, (k0_off904 k0_t3) a + S1x1x16.size a ≤ S4x4x1024.size a
  k0_off905_inb : ∀ k0_t3 : Fin k0_t3_loop.trips, ∀ a, (k0_off905 k0_t3) a + S1x1x16.size a ≤ S4x4x1024.size a
  k0_off906_inb : ∀ k0_t3 : Fin k0_t3_loop.trips, ∀ a, (k0_off906 k0_t3) a + S1x1x16.size a ≤ S4x4x1024.size a
  k0_off907_inb : ∀ k0_t3 : Fin k0_t3_loop.trips, ∀ a, (k0_off907 k0_t3) a + S1x1x16.size a ≤ S4x4x1024.size a
  k0_off908_inb : ∀ k0_t3 : Fin k0_t3_loop.trips, ∀ a, (k0_off908 k0_t3) a + S1x1x16.size a ≤ S4x4x1024.size a
  k0_off909_inb : ∀ k0_t3 : Fin k0_t3_loop.trips, ∀ a, (k0_off909 k0_t3) a + S1x1x16.size a ≤ S4x4x1024.size a
  k0_off910_inb : ∀ k0_t3 : Fin k0_t3_loop.trips, ∀ a, (k0_off910 k0_t3) a + S1x1x16.size a ≤ S4x4x1024.size a
  k0_off911_inb : ∀ k0_t3 : Fin k0_t3_loop.trips, ∀ a, (k0_off911 k0_t3) a + S1x1x16.size a ≤ S4x4x1024.size a
  k0_off912_inb : ∀ k0_t3 : Fin k0_t3_loop.trips, ∀ a, (k0_off912 k0_t3) a + S1x1x16.size a ≤ S4x4x1024.size a
  k0_off913_inb : ∀ k0_t3 : Fin k0_t3_loop.trips, ∀ a, (k0_off913 k0_t3) a + S1x1x16.size a ≤ S4x4x1024.size a
  k0_off914_inb : ∀ k0_t3 : Fin k0_t3_loop.trips, ∀ a, (k0_off914 k0_t3) a + S1x1x16.size a ≤ S4x4x1024.size a
  k0_off915_inb : ∀ k0_t3 : Fin k0_t3_loop.trips, ∀ a, (k0_off915 k0_t3) a + S1x1x16.size a ≤ S4x4x1024.size a
  k0_off916_inb : ∀ k0_t3 : Fin k0_t3_loop.trips, ∀ a, (k0_off916 k0_t3) a + S1x1x16.size a ≤ S4x4x1024.size a
  k0_off917_inb : ∀ k0_t3 : Fin k0_t3_loop.trips, ∀ a, (k0_off917 k0_t3) a + S1x1x16.size a ≤ S4x4x1024.size a
  k0_off918_inb : ∀ k0_t3 : Fin k0_t3_loop.trips, ∀ a, (k0_off918 k0_t3) a + S1x1x16.size a ≤ S4x4x1024.size a
  k0_off919_inb : ∀ k0_t3 : Fin k0_t3_loop.trips, ∀ a, (k0_off919 k0_t3) a + S1x1x16.size a ≤ S4x4x1024.size a
  k0_off920_inb : ∀ k0_t3 : Fin k0_t3_loop.trips, ∀ a, (k0_off920 k0_t3) a + S1x1x16.size a ≤ S4x4x1024.size a
  k0_off921_inb : ∀ k0_t3 : Fin k0_t3_loop.trips, ∀ a, (k0_off921 k0_t3) a + S1x1x16.size a ≤ S4x4x1024.size a
  k0_off922_inb : ∀ k0_t3 : Fin k0_t3_loop.trips, ∀ a, (k0_off922 k0_t3) a + S1x1x16.size a ≤ S4x4x1024.size a
  k0_off923_inb : ∀ k0_t3 : Fin k0_t3_loop.trips, ∀ a, (k0_off923 k0_t3) a + S1x1x16.size a ≤ S4x4x1024.size a
  k0_off924_inb : ∀ k0_t3 : Fin k0_t3_loop.trips, ∀ a, (k0_off924 k0_t3) a + S1x1x16.size a ≤ S4x4x1024.size a
  k0_off925_inb : ∀ k0_t3 : Fin k0_t3_loop.trips, ∀ a, (k0_off925 k0_t3) a + S1x1x16.size a ≤ S4x4x1024.size a
  k0_off926_inb : ∀ k0_t3 : Fin k0_t3_loop.trips, ∀ a, (k0_off926 k0_t3) a + S1x1x16.size a ≤ S4x4x1024.size a
  k0_off927_inb : ∀ k0_t3 : Fin k0_t3_loop.trips, ∀ a, (k0_off927 k0_t3) a + S1x1x16.size a ≤ S4x4x1024.size a
  k0_off928_inb : ∀ k0_t3 : Fin k0_t3_loop.trips, ∀ a, (k0_off928 k0_t3) a + S1x1x16.size a ≤ S4x4x1024.size a
  k0_off929_inb : ∀ k0_t3 : Fin k0_t3_loop.trips, ∀ a, (k0_off929 k0_t3) a + S1x1x1x16.size a ≤ S4x4x4x1024.size a
  k0_off930_inb : ∀ k0_t3 : Fin k0_t3_loop.trips, ∀ a, (k0_off930 k0_t3) a + S1x1x1x16.size a ≤ S2x4x4x1024.size a
  k0_off931_inb : ∀ k0_t3 : Fin k0_t3_loop.trips, ∀ a, (k0_off931 k0_t3) a + S1x1x1x16.size a ≤ S4x4x4x1024.size a
  k0_off932_inb : ∀ k0_t3 : Fin k0_t3_loop.trips, ∀ a, (k0_off932 k0_t3) a + S1x1x1x16.size a ≤ S2x4x4x1024.size a
  k0_off933_inb : ∀ k0_t3 : Fin k0_t3_loop.trips, ∀ a, (k0_off933 k0_t3) a + S1x1x1x16.size a ≤ S4x4x4x1024.size a
  k0_off934_inb : ∀ k0_t3 : Fin k0_t3_loop.trips, ∀ a, (k0_off934 k0_t3) a + S1x1x1x16.size a ≤ S2x4x4x1024.size a
  k0_off935_inb : ∀ k0_t3 : Fin k0_t3_loop.trips, ∀ a, (k0_off935 k0_t3) a + S1x1x1x16.size a ≤ S4x4x4x1024.size a
  k0_off936_inb : ∀ k0_t3 : Fin k0_t3_loop.trips, ∀ a, (k0_off936 k0_t3) a + S1x1x1x16.size a ≤ S2x4x4x1024.size a
  k0_off937_inb : ∀ k0_t3 : Fin k0_t3_loop.trips, ∀ a, (k0_off937 k0_t3) a + S1x1x1x16.size a ≤ S4x4x4x1024.size a
  k0_off938_inb : ∀ k0_t3 : Fin k0_t3_loop.trips, ∀ a, (k0_off938 k0_t3) a + S1x1x1x16.size a ≤ S2x4x4x1024.size a
  k0_off939_inb : ∀ k0_t3 : Fin k0_t3_loop.trips, ∀ a, (k0_off939 k0_t3) a + S1x1x1x16.size a ≤ S4x4x4x1024.size a
  k0_off940_inb : ∀ k0_t3 : Fin k0_t3_loop.trips, ∀ a, (k0_off940 k0_t3) a + S1x1x1x16.size a ≤ S2x4x4x1024.size a
  k0_off941_inb : ∀ k0_t3 : Fin k0_t3_loop.trips, ∀ a, (k0_off941 k0_t3) a + S1x1x1x16.size a ≤ S4x4x4x1024.size a
  k0_off942_inb : ∀ k0_t3 : Fin k0_t3_loop.trips, ∀ a, (k0_off942 k0_t3) a + S1x1x1x16.size a ≤ S2x4x4x1024.size a
  k0_off943_inb : ∀ k0_t3 : Fin k0_t3_loop.trips, ∀ a, (k0_off943 k0_t3) a + S1x1x1x16.size a ≤ S4x4x4x1024.size a
  k0_off944_inb : ∀ k0_t3 : Fin k0_t3_loop.trips, ∀ a, (k0_off944 k0_t3) a + S1x1x1x16.size a ≤ S2x4x4x1024.size a
  k0_off945_inb : ∀ k0_t3 : Fin k0_t3_loop.trips, ∀ a, (k0_off945 k0_t3) a + S1x1x1x16.size a ≤ S4x4x4x1024.size a
  k0_off946_inb : ∀ k0_t3 : Fin k0_t3_loop.trips, ∀ a, (k0_off946 k0_t3) a + S1x1x1x16.size a ≤ S2x4x4x1024.size a
  k0_off947_inb : ∀ k0_t3 : Fin k0_t3_loop.trips, ∀ a, (k0_off947 k0_t3) a + S1x1x1x16.size a ≤ S4x4x4x1024.size a
  k0_off948_inb : ∀ k0_t3 : Fin k0_t3_loop.trips, ∀ a, (k0_off948 k0_t3) a + S1x1x1x16.size a ≤ S2x4x4x1024.size a
  k0_off949_inb : ∀ k0_t3 : Fin k0_t3_loop.trips, ∀ a, (k0_off949 k0_t3) a + S1x1x1x16.size a ≤ S4x4x4x1024.size a
  k0_off950_inb : ∀ k0_t3 : Fin k0_t3_loop.trips, ∀ a, (k0_off950 k0_t3) a + S1x1x1x16.size a ≤ S2x4x4x1024.size a
  k0_off951_inb : ∀ k0_t3 : Fin k0_t3_loop.trips, ∀ a, (k0_off951 k0_t3) a + S1x1x1x16.size a ≤ S4x4x4x1024.size a
  k0_off952_inb : ∀ k0_t3 : Fin k0_t3_loop.trips, ∀ a, (k0_off952 k0_t3) a + S1x1x1x16.size a ≤ S2x4x4x1024.size a
  k0_off953_inb : ∀ k0_t3 : Fin k0_t3_loop.trips, ∀ a, (k0_off953 k0_t3) a + S1x1x1x16.size a ≤ S4x4x4x1024.size a
  k0_off954_inb : ∀ k0_t3 : Fin k0_t3_loop.trips, ∀ a, (k0_off954 k0_t3) a + S1x1x1x16.size a ≤ S2x4x4x1024.size a
  k0_off955_inb : ∀ k0_t3 : Fin k0_t3_loop.trips, ∀ a, (k0_off955 k0_t3) a + S1x1x1x16.size a ≤ S4x4x4x1024.size a
  k0_off956_inb : ∀ k0_t3 : Fin k0_t3_loop.trips, ∀ a, (k0_off956 k0_t3) a + S1x1x1x16.size a ≤ S2x4x4x1024.size a
  k0_off957_inb : ∀ k0_t3 : Fin k0_t3_loop.trips, ∀ a, (k0_off957 k0_t3) a + S1x1x1x16.size a ≤ S4x4x4x1024.size a
  k0_off958_inb : ∀ k0_t3 : Fin k0_t3_loop.trips, ∀ a, (k0_off958 k0_t3) a + S1x1x1x16.size a ≤ S2x4x4x1024.size a
  k0_off959_inb : ∀ k0_t3 : Fin k0_t3_loop.trips, ∀ a, (k0_off959 k0_t3) a + S1x1x1x16.size a ≤ S4x4x4x1024.size a
  k0_off960_inb : ∀ k0_t3 : Fin k0_t3_loop.trips, ∀ a, (k0_off960 k0_t3) a + S1x1x1x16.size a ≤ S2x4x4x1024.size a
  k0_off961_inb : ∀ k0_t3 : Fin k0_t3_loop.trips, ∀ a, (k0_off961 k0_t3) a + S1x1x1x16.size a ≤ S4x4x4x1024.size a
  k0_off962_inb : ∀ k0_t3 : Fin k0_t3_loop.trips, ∀ a, (k0_off962 k0_t3) a + S1x1x1x16.size a ≤ S2x4x4x1024.size a
  k0_off963_inb : ∀ k0_t3 : Fin k0_t3_loop.trips, ∀ a, (k0_off963 k0_t3) a + S1x1x1x16.size a ≤ S4x4x4x1024.size a
  k0_off964_inb : ∀ k0_t3 : Fin k0_t3_loop.trips, ∀ a, (k0_off964 k0_t3) a + S1x1x1x16.size a ≤ S2x4x4x1024.size a
  k0_off965_inb : ∀ k0_t3 : Fin k0_t3_loop.trips, ∀ a, (k0_off965 k0_t3) a + S1x1x1x16.size a ≤ S4x4x4x1024.size a
  k0_off966_inb : ∀ k0_t3 : Fin k0_t3_loop.trips, ∀ a, (k0_off966 k0_t3) a + S1x1x1x16.size a ≤ S2x4x4x1024.size a
  k0_off967_inb : ∀ k0_t3 : Fin k0_t3_loop.trips, ∀ a, (k0_off967 k0_t3) a + S1x1x1x16.size a ≤ S4x4x4x1024.size a
  k0_off968_inb : ∀ k0_t3 : Fin k0_t3_loop.trips, ∀ a, (k0_off968 k0_t3) a + S1x1x1x16.size a ≤ S2x4x4x1024.size a
  k0_off969_inb : ∀ k0_t3 : Fin k0_t3_loop.trips, ∀ a, (k0_off969 k0_t3) a + S1x1x1x16.size a ≤ S4x4x4x1024.size a
  k0_off970_inb : ∀ k0_t3 : Fin k0_t3_loop.trips, ∀ a, (k0_off970 k0_t3) a + S1x1x1x16.size a ≤ S2x4x4x1024.size a
  k0_off971_inb : ∀ k0_t3 : Fin k0_t3_loop.trips, ∀ a, (k0_off971 k0_t3) a + S1x1x1x16.size a ≤ S4x4x4x1024.size a
  k0_off972_inb : ∀ k0_t3 : Fin k0_t3_loop.trips, ∀ a, (k0_off972 k0_t3) a + S1x1x1x16.size a ≤ S2x4x4x1024.size a
  k0_off973_inb : ∀ k0_t3 : Fin k0_t3_loop.trips, ∀ a, (k0_off973 k0_t3) a + S1x1x1x16.size a ≤ S4x4x4x1024.size a
  k0_off974_inb : ∀ k0_t3 : Fin k0_t3_loop.trips, ∀ a, (k0_off974 k0_t3) a + S1x1x1x16.size a ≤ S2x4x4x1024.size a
  k0_off975_inb : ∀ k0_t3 : Fin k0_t3_loop.trips, ∀ a, (k0_off975 k0_t3) a + S1x1x1x16.size a ≤ S4x4x4x1024.size a
  k0_off976_inb : ∀ k0_t3 : Fin k0_t3_loop.trips, ∀ a, (k0_off976 k0_t3) a + S1x1x1x16.size a ≤ S2x4x4x1024.size a
  k0_off977_inb : ∀ k0_t3 : Fin k0_t3_loop.trips, ∀ a, (k0_off977 k0_t3) a + S1x1x1x16.size a ≤ S4x4x4x1024.size a
  k0_off978_inb : ∀ k0_t3 : Fin k0_t3_loop.trips, ∀ a, (k0_off978 k0_t3) a + S1x1x1x16.size a ≤ S2x4x4x1024.size a
  k0_off979_inb : ∀ k0_t3 : Fin k0_t3_loop.trips, ∀ a, (k0_off979 k0_t3) a + S1x1x1x16.size a ≤ S4x4x4x1024.size a
  k0_off980_inb : ∀ k0_t3 : Fin k0_t3_loop.trips, ∀ a, (k0_off980 k0_t3) a + S1x1x1x16.size a ≤ S2x4x4x1024.size a
  k0_off981_inb : ∀ k0_t3 : Fin k0_t3_loop.trips, ∀ a, (k0_off981 k0_t3) a + S1x1x1x16.size a ≤ S4x4x4x1024.size a
  k0_off982_inb : ∀ k0_t3 : Fin k0_t3_loop.trips, ∀ a, (k0_off982 k0_t3) a + S1x1x1x16.size a ≤ S2x4x4x1024.size a
  k0_off983_inb : ∀ k0_t3 : Fin k0_t3_loop.trips, ∀ a, (k0_off983 k0_t3) a + S1x1x1x16.size a ≤ S4x4x4x1024.size a
  k0_off984_inb : ∀ k0_t3 : Fin k0_t3_loop.trips, ∀ a, (k0_off984 k0_t3) a + S1x1x1x16.size a ≤ S2x4x4x1024.size a
  k0_off985_inb : ∀ k0_t3 : Fin k0_t3_loop.trips, ∀ a, (k0_off985 k0_t3) a + S1x1x1x16.size a ≤ S4x4x4x1024.size a
  k0_off986_inb : ∀ k0_t3 : Fin k0_t3_loop.trips, ∀ a, (k0_off986 k0_t3) a + S1x1x1x16.size a ≤ S2x4x4x1024.size a
  k0_off987_inb : ∀ k0_t3 : Fin k0_t3_loop.trips, ∀ a, (k0_off987 k0_t3) a + S1x1x1x16.size a ≤ S4x4x4x1024.size a
  k0_off988_inb : ∀ k0_t3 : Fin k0_t3_loop.trips, ∀ a, (k0_off988 k0_t3) a + S1x1x1x16.size a ≤ S2x4x4x1024.size a
  k0_off989_inb : ∀ k0_t3 : Fin k0_t3_loop.trips, ∀ a, (k0_off989 k0_t3) a + S1x1x1x16.size a ≤ S4x4x4x1024.size a
  k0_off990_inb : ∀ k0_t3 : Fin k0_t3_loop.trips, ∀ a, (k0_off990 k0_t3) a + S1x1x1x16.size a ≤ S2x4x4x1024.size a
  k0_off991_inb : ∀ k0_t3 : Fin k0_t3_loop.trips, ∀ a, (k0_off991 k0_t3) a + S1x1x1x16.size a ≤ S4x4x4x1024.size a
  k0_off992_inb : ∀ k0_t3 : Fin k0_t3_loop.trips, ∀ a, (k0_off992 k0_t3) a + S1x1x1x16.size a ≤ S2x4x4x1024.size a
  k0_off993_inb : ∀ k0_t3 : Fin k0_t3_loop.trips, ∀ a, (k0_off993 k0_t3) a + S1x1x1x16.size a ≤ S4x4x4x1024.size a
  k0_off994_inb : ∀ k0_t3 : Fin k0_t3_loop.trips, ∀ a, (k0_off994 k0_t3) a + S1x1x1x16.size a ≤ S2x4x4x1024.size a
  k0_off995_inb : ∀ k0_t3 : Fin k0_t3_loop.trips, ∀ a, (k0_off995 k0_t3) a + S1x1x1x16.size a ≤ S4x4x4x1024.size a

class K0.R2.Facts₀ : Prop where
  k0_off996_inb : ∀ k0_t3 : Fin k0_t3_loop.trips, ∀ a, (k0_off996 k0_t3) a + S1x1x1x16.size a ≤ S2x4x4x1024.size a
  k0_off997_inb : ∀ k0_t3 : Fin k0_t3_loop.trips, ∀ a, (k0_off997 k0_t3) a + S1x1x1x16.size a ≤ S4x4x4x1024.size a
  k0_off998_inb : ∀ k0_t3 : Fin k0_t3_loop.trips, ∀ a, (k0_off998 k0_t3) a + S1x1x1x16.size a ≤ S2x4x4x1024.size a
  k0_off999_inb : ∀ k0_t3 : Fin k0_t3_loop.trips, ∀ a, (k0_off999 k0_t3) a + S1x1x1x16.size a ≤ S4x4x4x1024.size a
  k0_off1000_inb : ∀ k0_t3 : Fin k0_t3_loop.trips, ∀ a, (k0_off1000 k0_t3) a + S1x1x1x16.size a ≤ S2x4x4x1024.size a
  k0_off1001_inb : ∀ k0_t3 : Fin k0_t3_loop.trips, ∀ a, (k0_off1001 k0_t3) a + S1x1x1x16.size a ≤ S4x4x4x1024.size a
  k0_off1002_inb : ∀ k0_t3 : Fin k0_t3_loop.trips, ∀ a, (k0_off1002 k0_t3) a + S1x1x1x16.size a ≤ S2x4x4x1024.size a
  k0_off1003_inb : ∀ k0_t3 : Fin k0_t3_loop.trips, ∀ a, (k0_off1003 k0_t3) a + S1x1x1x16.size a ≤ S4x4x4x1024.size a
  k0_off1004_inb : ∀ k0_t3 : Fin k0_t3_loop.trips, ∀ a, (k0_off1004 k0_t3) a + S1x1x1x16.size a ≤ S2x4x4x1024.size a
  k0_off1005_inb : ∀ k0_t3 : Fin k0_t3_loop.trips, ∀ a, (k0_off1005 k0_t3) a + S1x1x1x16.size a ≤ S4x4x4x1024.size a
  k0_off1006_inb : ∀ k0_t3 : Fin k0_t3_loop.trips, ∀ a, (k0_off1006 k0_t3) a + S1x1x1x16.size a ≤ S2x4x4x1024.size a
  k0_off1007_inb : ∀ k0_t3 : Fin k0_t3_loop.trips, ∀ a, (k0_off1007 k0_t3) a + S1x1x1x16.size a ≤ S4x4x4x1024.size a
  k0_off1008_inb : ∀ k0_t3 : Fin k0_t3_loop.trips, ∀ a, (k0_off1008 k0_t3) a + S1x1x1x16.size a ≤ S2x4x4x1024.size a
  k0_off1009_inb : ∀ k0_t3 : Fin k0_t3_loop.trips, ∀ a, (k0_off1009 k0_t3) a + S1x1x1x16.size a ≤ S4x4x4x1024.size a
  k0_off1010_inb : ∀ k0_t3 : Fin k0_t3_loop.trips, ∀ a, (k0_off1010 k0_t3) a + S1x1x1x16.size a ≤ S2x4x4x1024.size a
  k0_off1011_inb : ∀ k0_t3 : Fin k0_t3_loop.trips, ∀ a, (k0_off1011 k0_t3) a + S1x1x1x16.size a ≤ S4x4x4x1024.size a
  k0_off1012_inb : ∀ k0_t3 : Fin k0_t3_loop.trips, ∀ a, (k0_off1012 k0_t3) a + S1x1x1x16.size a ≤ S2x4x4x1024.size a
  k0_off1013_inb : ∀ k0_t3 : Fin k0_t3_loop.trips, ∀ a, (k0_off1013 k0_t3) a + S1x1x1x16.size a ≤ S4x4x4x1024.size a
  k0_off1014_inb : ∀ k0_t3 : Fin k0_t3_loop.trips, ∀ a, (k0_off1014 k0_t3) a + S1x1x1x16.size a ≤ S2x4x4x1024.size a
  k0_off1015_inb : ∀ k0_t3 : Fin k0_t3_loop.trips, ∀ a, (k0_off1015 k0_t3) a + S1x1x1x16.size a ≤ S4x4x4x1024.size a
  k0_off1016_inb : ∀ k0_t3 : Fin k0_t3_loop.trips, ∀ a, (k0_off1016 k0_t3) a + S1x1x1x16.size a ≤ S2x4x4x1024.size a
  k0_off1017_inb : ∀ k0_t3 : Fin k0_t3_loop.trips, ∀ a, (k0_off1017 k0_t3) a + S1x1x1x16.size a ≤ S4x4x4x1024.size a
  k0_off1018_inb : ∀ k0_t3 : Fin k0_t3_loop.trips, ∀ a, (k0_off1018 k0_t3) a + S1x1x1x16.size a ≤ S2x4x4x1024.size a
  k0_off1019_inb : ∀ k0_t3 : Fin k0_t3_loop.trips, ∀ a, (k0_off1019 k0_t3) a + S1x1x1x16.size a ≤ S4x4x4x1024.size a
  k0_off1020_inb : ∀ k0_t3 : Fin k0_t3_loop.trips, ∀ a, (k0_off1020 k0_t3) a + S1x1x1x16.size a ≤ S2x4x4x1024.size a
  k0_off1021_inb : ∀ k0_t3 : Fin k0_t3_loop.trips, ∀ a, (k0_off1021 k0_t3) a + S1x1x1x16.size a ≤ S4x4x4x1024.size a
  k0_off1022_inb : ∀ k0_t3 : Fin k0_t3_loop.trips, ∀ a, (k0_off1022 k0_t3) a + S1x1x1x16.size a ≤ S2x4x4x1024.size a
  k0_off1023_inb : ∀ k0_t3 : Fin k0_t3_loop.trips, ∀ a, (k0_off1023 k0_t3) a + S1x1x1x16.size a ≤ S4x4x4x1024.size a
  k0_off1024_inb : ∀ k0_t3 : Fin k0_t3_loop.trips, ∀ a, (k0_off1024 k0_t3) a + S1x1x1x16.size a ≤ S2x4x4x1024.size a
  k0_off1025_inb : ∀ k0_t3 : Fin k0_t3_loop.trips, ∀ a, (k0_off1025 k0_t3) a + S1x1x1x16.size a ≤ S4x4x4x1024.size a
  k0_off1026_inb : ∀ k0_t3 : Fin k0_t3_loop.trips, ∀ a, (k0_off1026 k0_t3) a + S1x1x1x16.size a ≤ S2x4x4x1024.size a
  k0_off1027_inb : ∀ k0_t3 : Fin k0_t3_loop.trips, ∀ a, (k0_off1027 k0_t3) a + S1x1x1x16.size a ≤ S4x4x4x1024.size a
  k0_off1028_inb : ∀ k0_t3 : Fin k0_t3_loop.trips, ∀ a, (k0_off1028 k0_t3) a + S1x1x1x16.size a ≤ S2x4x4x1024.size a
  k0_off1029_inb : ∀ k0_t3 : Fin k0_t3_loop.trips, ∀ a, (k0_off1029 k0_t3) a + S1x1x1x16.size a ≤ S4x4x4x1024.size a
  k0_off1030_inb : ∀ k0_t3 : Fin k0_t3_loop.trips, ∀ a, (k0_off1030 k0_t3) a + S1x1x1x16.size a ≤ S2x4x4x1024.size a
  k0_off1031_inb : ∀ k0_t3 : Fin k0_t3_loop.trips, ∀ a, (k0_off1031 k0_t3) a + S1x1x1x16.size a ≤ S4x4x4x1024.size a
  k0_off1032_inb : ∀ k0_t3 : Fin k0_t3_loop.trips, ∀ a, (k0_off1032 k0_t3) a + S1x1x1x16.size a ≤ S2x4x4x1024.size a
  k0_off1033_inb : ∀ k0_t3 : Fin k0_t3_loop.trips, ∀ a, (k0_off1033 k0_t3) a + S1x1x1x16.size a ≤ S4x4x4x1024.size a
  k0_off1034_inb : ∀ k0_t3 : Fin k0_t3_loop.trips, ∀ a, (k0_off1034 k0_t3) a + S1x1x1x16.size a ≤ S2x4x4x1024.size a
  k0_off1035_inb : ∀ k0_t3 : Fin k0_t3_loop.trips, ∀ a, (k0_off1035 k0_t3) a + S1x1x1x16.size a ≤ S4x4x4x1024.size a
  k0_off1036_inb : ∀ k0_t3 : Fin k0_t3_loop.trips, ∀ a, (k0_off1036 k0_t3) a + S1x1x1x16.size a ≤ S2x4x4x1024.size a
  k0_off1037_inb : ∀ k0_t3 : Fin k0_t3_loop.trips, ∀ a, (k0_off1037 k0_t3) a + S1x1x1x16.size a ≤ S4x4x4x1024.size a
  k0_off1038_inb : ∀ k0_t3 : Fin k0_t3_loop.trips, ∀ a, (k0_off1038 k0_t3) a + S1x1x1x16.size a ≤ S2x4x4x1024.size a
  k0_off1039_inb : ∀ k0_t3 : Fin k0_t3_loop.trips, ∀ a, (k0_off1039 k0_t3) a + S1x1x1x16.size a ≤ S4x4x4x1024.size a
  k0_off1040_inb : ∀ k0_t3 : Fin k0_t3_loop.trips, ∀ a, (k0_off1040 k0_t3) a + S1x1x1x16.size a ≤ S2x4x4x1024.size a
  k0_off1041_inb : ∀ k0_t3 : Fin k0_t3_loop.trips, ∀ a, (k0_off1041 k0_t3) a + S1x1x1x16.size a ≤ S4x4x4x1024.size a
  k0_off1042_inb : ∀ k0_t3 : Fin k0_t3_loop.trips, ∀ a, (k0_off1042 k0_t3) a + S1x1x1x16.size a ≤ S2x4x4x1024.size a
  k0_off1043_inb : ∀ k0_t3 : Fin k0_t3_loop.trips, ∀ a, (k0_off1043 k0_t3) a + S1x1x1x16.size a ≤ S4x4x4x1024.size a
  k0_off1044_inb : ∀ k0_t3 : Fin k0_t3_loop.trips, ∀ a, (k0_off1044 k0_t3) a + S1x1x1x16.size a ≤ S2x4x4x1024.size a
  k0_off1045_inb : ∀ k0_t3 : Fin k0_t3_loop.trips, ∀ a, (k0_off1045 k0_t3) a + S1x1x1x16.size a ≤ S4x4x4x1024.size a
  k0_off1046_inb : ∀ k0_t3 : Fin k0_t3_loop.trips, ∀ a, (k0_off1046 k0_t3) a + S1x1x1x16.size a ≤ S2x4x4x1024.size a
  k0_off1047_inb : ∀ k0_t3 : Fin k0_t3_loop.trips, ∀ a, (k0_off1047 k0_t3) a + S1x1x1x16.size a ≤ S4x4x4x1024.size a
  k0_off1048_inb : ∀ k0_t3 : Fin k0_t3_loop.trips, ∀ a, (k0_off1048 k0_t3) a + S1x1x1x16.size a ≤ S2x4x4x1024.size a
  k0_off1049_inb : ∀ k0_t3 : Fin k0_t3_loop.trips, ∀ a, (k0_off1049 k0_t3) a + S1x1x1x16.size a ≤ S4x4x4x1024.size a
  k0_off1050_inb : ∀ k0_t3 : Fin k0_t3_loop.trips, ∀ a, (k0_off1050 k0_t3) a + S1x1x1x16.size a ≤ S2x4x4x1024.size a
  k0_off1051_inb : ∀ k0_t3 : Fin k0_t3_loop.trips, ∀ a, (k0_off1051 k0_t3) a + S1x1x1x16.size a ≤ S4x4x4x1024.size a
  k0_off1052_inb : ∀ k0_t3 : Fin k0_t3_loop.trips, ∀ a, (k0_off1052 k0_t3) a + S1x1x1x16.size a ≤ S2x4x4x1024.size a
  k0_off1053_inb : ∀ k0_t3 : Fin k0_t3_loop.trips, ∀ a, (k0_off1053 k0_t3) a + S1x1x1x16.size a ≤ S4x4x4x1024.size a
  k0_off1054_inb : ∀ k0_t3 : Fin k0_t3_loop.trips, ∀ a, (k0_off1054 k0_t3) a + S1x1x1x16.size a ≤ S2x4x4x1024.size a
  k0_off1055_inb : ∀ k0_t3 : Fin k0_t3_loop.trips, ∀ a, (k0_off1055 k0_t3) a + S1x1x1x16.size a ≤ S4x4x4x1024.size a
  k0_off1056_inb : ∀ k0_t3 : Fin k0_t3_loop.trips, ∀ a, (k0_off1056 k0_t3) a + S1x1x1x16.size a ≤ S2x4x4x1024.size a
  k0_off1057_inb : ∀ k0_t3 : Fin k0_t3_loop.trips, ∀ a, (k0_off1057 k0_t3) a + S1x1x1x16.size a ≤ S4x4x4x1024.size a
  k0_off1058_inb : ∀ k0_t3 : Fin k0_t3_loop.trips, ∀ a, (k0_off1058 k0_t3) a + S1x1x1x16.size a ≤ S2x4x4x1024.size a
  k0_off1059_inb : ∀ k0_t3 : Fin k0_t3_loop.trips, ∀ a, (k0_off1059 k0_t3) a + S1x1x1x16.size a ≤ S4x4x4x1024.size a
  k0_off1060_inb : ∀ k0_t3 : Fin k0_t3_loop.trips, ∀ a, (k0_off1060 k0_t3) a + S1x1x1x16.size a ≤ S2x4x4x1024.size a
  k0_off1061_inb : ∀ k0_t3 : Fin k0_t3_loop.trips, ∀ a, (k0_off1061 k0_t3) a + S1x1x1x16.size a ≤ S4x4x4x1024.size a
  k0_off1062_inb : ∀ k0_t3 : Fin k0_t3_loop.trips, ∀ a, (k0_off1062 k0_t3) a + S1x1x1x16.size a ≤ S2x4x4x1024.size a
  k0_off1063_inb : ∀ k0_t3 : Fin k0_t3_loop.trips, ∀ a, (k0_off1063 k0_t3) a + S1x1x1x16.size a ≤ S4x4x4x1024.size a
  k0_off1064_inb : ∀ k0_t3 : Fin k0_t3_loop.trips, ∀ a, (k0_off1064 k0_t3) a + S1x1x1x16.size a ≤ S2x4x4x1024.size a
  k0_off1065_inb : ∀ k0_t3 : Fin k0_t3_loop.trips, ∀ a, (k0_off1065 k0_t3) a + S1x1x1x16.size a ≤ S4x4x4x1024.size a
  k0_off1066_inb : ∀ k0_t3 : Fin k0_t3_loop.trips, ∀ a, (k0_off1066 k0_t3) a + S1x1x1x16.size a ≤ S2x4x4x1024.size a
  k0_off1067_inb : ∀ k0_t3 : Fin k0_t3_loop.trips, ∀ a, (k0_off1067 k0_t3) a + S1x1x1x16.size a ≤ S4x4x4x1024.size a
  k0_off1068_inb : ∀ k0_t3 : Fin k0_t3_loop.trips, ∀ a, (k0_off1068 k0_t3) a + S1x1x1x16.size a ≤ S2x4x4x1024.size a
  k0_off1069_inb : ∀ k0_t3 : Fin k0_t3_loop.trips, ∀ a, (k0_off1069 k0_t3) a + S1x1x1x16.size a ≤ S4x4x4x1024.size a
  k0_off1070_inb : ∀ k0_t3 : Fin k0_t3_loop.trips, ∀ a, (k0_off1070 k0_t3) a + S1x1x1x16.size a ≤ S2x4x4x1024.size a
  k0_off1071_inb : ∀ k0_t3 : Fin k0_t3_loop.trips, ∀ a, (k0_off1071 k0_t3) a + S1x1x1x16.size a ≤ S4x4x4x1024.size a
  k0_off1072_inb : ∀ k0_t3 : Fin k0_t3_loop.trips, ∀ a, (k0_off1072 k0_t3) a + S1x1x1x16.size a ≤ S2x4x4x1024.size a
  k0_off1073_inb : ∀ k0_t3 : Fin k0_t3_loop.trips, ∀ a, (k0_off1073 k0_t3) a + S1x1x1x16.size a ≤ S4x4x4x1024.size a
  k0_off1074_inb : ∀ k0_t3 : Fin k0_t3_loop.trips, ∀ a, (k0_off1074 k0_t3) a + S1x1x1x16.size a ≤ S2x4x4x1024.size a
  k0_off1075_inb : ∀ k0_t3 : Fin k0_t3_loop.trips, ∀ a, (k0_off1075 k0_t3) a + S1x1x1x16.size a ≤ S4x4x4x1024.size a
  k0_off1076_inb : ∀ k0_t3 : Fin k0_t3_loop.trips, ∀ a, (k0_off1076 k0_t3) a + S1x1x1x16.size a ≤ S2x4x4x1024.size a
  k0_off1077_inb : ∀ k0_t3 : Fin k0_t3_loop.trips, ∀ a, (k0_off1077 k0_t3) a + S1x1x1x16.size a ≤ S4x4x4x1024.size a
  k0_off1078_inb : ∀ k0_t3 : Fin k0_t3_loop.trips, ∀ a, (k0_off1078 k0_t3) a + S1x1x1x16.size a ≤ S2x4x4x1024.size a
  k0_off1079_inb : ∀ k0_t3 : Fin k0_t3_loop.trips, ∀ a, (k0_off1079 k0_t3) a + S1x1x1x16.size a ≤ S4x4x4x1024.size a
  k0_off1080_inb : ∀ k0_t3 : Fin k0_t3_loop.trips, ∀ a, (k0_off1080 k0_t3) a + S1x1x1x16.size a ≤ S2x4x4x1024.size a
  k0_off1081_inb : ∀ k0_t3 : Fin k0_t3_loop.trips, ∀ a, (k0_off1081 k0_t3) a + S1x1x1x16.size a ≤ S4x4x4x1024.size a
  k0_off1082_inb : ∀ k0_t3 : Fin k0_t3_loop.trips, ∀ a, (k0_off1082 k0_t3) a + S1x1x1x16.size a ≤ S2x4x4x1024.size a
  k0_off1083_inb : ∀ k0_t3 : Fin k0_t3_loop.trips, ∀ a, (k0_off1083 k0_t3) a + S1x1x1x16.size a ≤ S4x4x4x1024.size a
  k0_off1084_inb : ∀ k0_t3 : Fin k0_t3_loop.trips, ∀ a, (k0_off1084 k0_t3) a + S1x1x1x16.size a ≤ S2x4x4x1024.size a
  k0_off1085_inb : ∀ k0_t3 : Fin k0_t3_loop.trips, ∀ a, (k0_off1085 k0_t3) a + S1x1x1x16.size a ≤ S4x4x4x1024.size a
  k0_off1086_inb : ∀ k0_t3 : Fin k0_t3_loop.trips, ∀ a, (k0_off1086 k0_t3) a + S1x1x1x16.size a ≤ S2x4x4x1024.size a
  k0_off1087_inb : ∀ k0_t3 : Fin k0_t3_loop.trips, ∀ a, (k0_off1087 k0_t3) a + S1x1x1x16.size a ≤ S4x4x4x1024.size a
  k0_off1088_inb : ∀ k0_t3 : Fin k0_t3_loop.trips, ∀ a, (k0_off1088 k0_t3) a + S1x1x1x16.size a ≤ S2x4x4x1024.size a
  k0_off1089_inb : ∀ k0_t3 : Fin k0_t3_loop.trips, ∀ a, (k0_off1089 k0_t3) a + S1x1x1x16.size a ≤ S4x4x4x1024.size a
  k0_off1090_inb : ∀ k0_t3 : Fin k0_t3_loop.trips, ∀ a, (k0_off1090 k0_t3) a + S1x1x1x16.size a ≤ S2x4x4x1024.size a
  k0_off1091_inb : ∀ k0_t3 : Fin k0_t3_loop.trips, ∀ a, (k0_off1091 k0_t3) a + S1x1x1x16.size a ≤ S4x4x4x1024.size a
  k0_off1092_inb : ∀ k0_t3 : Fin k0_t3_loop.trips, ∀ a, (k0_off1092 k0_t3) a + S1x1x1x16.size a ≤ S2x4x4x1024.size a
  k0_off1093_inb : ∀ k0_t3 : Fin k0_t3_loop.trips, ∀ a, (k0_off1093 k0_t3) a + S1x1x1x16.size a ≤ S4x4x4x1024.size a
  k0_off1094_inb : ∀ k0_t3 : Fin k0_t3_loop.trips, ∀ a, (k0_off1094 k0_t3) a + S1x1x1x16.size a ≤ S2x4x4x1024.size a
  k0_off1095_inb : ∀ k0_t3 : Fin k0_t3_loop.trips, ∀ a, (k0_off1095 k0_t3) a + S1x1x1x16.size a ≤ S4x4x4x1024.size a
  k0_off1096_inb : ∀ k0_t3 : Fin k0_t3_loop.trips, ∀ a, (k0_off1096 k0_t3) a + S1x1x1x16.size a ≤ S2x4x4x1024.size a
  k0_off1097_inb : ∀ k0_t3 : Fin k0_t3_loop.trips, ∀ a, (k0_off1097 k0_t3) a + S1x1x1x16.size a ≤ S4x4x4x1024.size a
  k0_off1098_inb : ∀ k0_t3 : Fin k0_t3_loop.trips, ∀ a, (k0_off1098 k0_t3) a + S1x1x1x16.size a ≤ S2x4x4x1024.size a
  k0_off1099_inb : ∀ k0_t3 : Fin k0_t3_loop.trips, ∀ a, (k0_off1099 k0_t3) a + S1x1x1x16.size a ≤ S4x4x4x1024.size a
  k0_off1100_inb : ∀ k0_t3 : Fin k0_t3_loop.trips, ∀ a, (k0_off1100 k0_t3) a + S1x1x1x16.size a ≤ S2x4x4x1024.size a
  k0_off1101_inb : ∀ k0_t3 : Fin k0_t3_loop.trips, ∀ a, (k0_off1101 k0_t3) a + S1x1x1x16.size a ≤ S4x4x4x1024.size a
  k0_off1102_inb : ∀ k0_t3 : Fin k0_t3_loop.trips, ∀ a, (k0_off1102 k0_t3) a + S1x1x1x16.size a ≤ S2x4x4x1024.size a
  k0_off1103_inb : ∀ k0_t3 : Fin k0_t3_loop.trips, ∀ a, (k0_off1103 k0_t3) a + S1x1x1x16.size a ≤ S4x4x4x1024.size a
  k0_off1104_inb : ∀ k0_t3 : Fin k0_t3_loop.trips, ∀ a, (k0_off1104 k0_t3) a + S1x1x1x16.size a ≤ S2x4x4x1024.size a
  k0_off1105_inb : ∀ k0_t3 : Fin k0_t3_loop.trips, ∀ a, (k0_off1105 k0_t3) a + S1x1x1x16.size a ≤ S4x4x4x1024.size a
  k0_off1106_inb : ∀ k0_t3 : Fin k0_t3_loop.trips, ∀ a, (k0_off1106 k0_t3) a + S1x1x1x16.size a ≤ S2x4x4x1024.size a
  k0_off1107_inb : ∀ k0_t3 : Fin k0_t3_loop.trips, ∀ a, (k0_off1107 k0_t3) a + S1x1x1x16.size a ≤ S4x4x4x1024.size a
  k0_off1108_inb : ∀ k0_t3 : Fin k0_t3_loop.trips, ∀ a, (k0_off1108 k0_t3) a + S1x1x1x16.size a ≤ S2x4x4x1024.size a
  k0_off1109_inb : ∀ k0_t3 : Fin k0_t3_loop.trips, ∀ a, (k0_off1109 k0_t3) a + S1x1x1x16.size a ≤ S4x4x4x1024.size a
  k0_off1110_inb : ∀ k0_t3 : Fin k0_t3_loop.trips, ∀ a, (k0_off1110 k0_t3) a + S1x1x1x16.size a ≤ S2x4x4x1024.size a
  k0_off1111_inb : ∀ k0_t3 : Fin k0_t3_loop.trips, ∀ a, (k0_off1111 k0_t3) a + S1x1x1x16.size a ≤ S4x4x4x1024.size a
  k0_off1112_inb : ∀ k0_t3 : Fin k0_t3_loop.trips, ∀ a, (k0_off1112 k0_t3) a + S1x1x1x16.size a ≤ S2x4x4x1024.size a
  k0_off1113_inb : ∀ k0_t3 : Fin k0_t3_loop.trips, ∀ a, (k0_off1113 k0_t3) a + S1x1x1x16.size a ≤ S4x4x4x1024.size a
  k0_off1114_inb : ∀ k0_t3 : Fin k0_t3_loop.trips, ∀ a, (k0_off1114 k0_t3) a + S1x1x1x16.size a ≤ S2x4x4x1024.size a
  k0_off1115_inb : ∀ k0_t3 : Fin k0_t3_loop.trips, ∀ a, (k0_off1115 k0_t3) a + S1x1x1x16.size a ≤ S4x4x4x1024.size a
  k0_off1116_inb : ∀ k0_t3 : Fin k0_t3_loop.trips, ∀ a, (k0_off1116 k0_t3) a + S1x1x1x16.size a ≤ S2x4x4x1024.size a
  k0_off1117_inb : ∀ k0_t3 : Fin k0_t3_loop.trips, ∀ a, (k0_off1117 k0_t3) a + S1x1x1x16.size a ≤ S4x4x4x1024.size a
  k0_off1118_inb : ∀ k0_t3 : Fin k0_t3_loop.trips, ∀ a, (k0_off1118 k0_t3) a + S1x1x1x16.size a ≤ S2x4x4x1024.size a
  k0_off1119_inb : ∀ k0_t3 : Fin k0_t3_loop.trips, ∀ a, (k0_off1119 k0_t3) a + S1x1x1x16.size a ≤ S4x4x4x1024.size a
  k0_off1120_inb : ∀ k0_t3 : Fin k0_t3_loop.trips, ∀ a, (k0_off1120 k0_t3) a + S1x1x1x16.size a ≤ S2x4x4x1024.size a
  k0_off1121_inb : ∀ k0_t3 : Fin k0_t3_loop.trips, ∀ a, (k0_off1121 k0_t3) a + S1x1x1x16.size a ≤ S4x4x4x1024.size a
  k0_off1122_inb : ∀ k0_t3 : Fin k0_t3_loop.trips, ∀ a, (k0_off1122 k0_t3) a + S1x1x1x16.size a ≤ S2x4x4x1024.size a
  k0_off1123_inb : ∀ k0_t3 : Fin k0_t3_loop.trips, ∀ a, (k0_off1123 k0_t3) a + S1x1x1x16.size a ≤ S4x4x4x1024.size a
  k0_off1124_inb : ∀ k0_t3 : Fin k0_t3_loop.trips, ∀ a, (k0_off1124 k0_t3) a + S1x1x1x16.size a ≤ S2x4x4x1024.size a
  k0_off1125_inb : ∀ k0_t3 : Fin k0_t3_loop.trips, ∀ a, (k0_off1125 k0_t3) a + S1x1x1x16.size a ≤ S4x4x4x1024.size a
  k0_off1126_inb : ∀ k0_t3 : Fin k0_t3_loop.trips, ∀ a, (k0_off1126 k0_t3) a + S1x1x1x16.size a ≤ S2x4x4x1024.size a
  k0_off1127_inb : ∀ k0_t3 : Fin k0_t3_loop.trips, ∀ a, (k0_off1127 k0_t3) a + S1x1x1x16.size a ≤ S4x4x4x1024.size a
  k0_off1128_inb : ∀ k0_t3 : Fin k0_t3_loop.trips, ∀ a, (k0_off1128 k0_t3) a + S1x1x1x16.size a ≤ S2x4x4x1024.size a
  k0_off1129_inb : ∀ k0_t3 : Fin k0_t3_loop.trips, ∀ a, (k0_off1129 k0_t3) a + S1x1x1x16.size a ≤ S4x4x4x1024.size a
  k0_off1130_inb : ∀ k0_t3 : Fin k0_t3_loop.trips, ∀ a, (k0_off1130 k0_t3) a + S1x1x1x16.size a ≤ S2x4x4x1024.size a
  k0_off1131_inb : ∀ k0_t3 : Fin k0_t3_loop.trips, ∀ a, (k0_off1131 k0_t3) a + S1x1x1x16.size a ≤ S4x4x4x1024.size a
  k0_off1132_inb : ∀ k0_t3 : Fin k0_t3_loop.trips, ∀ a, (k0_off1132 k0_t3) a + S1x1x1x16.size a ≤ S2x4x4x1024.size a
  k0_off1133_inb : ∀ k0_t3 : Fin k0_t3_loop.trips, ∀ a, (k0_off1133 k0_t3) a + S1x1x1x16.size a ≤ S4x4x4x1024.size a
  k0_off1134_inb : ∀ k0_t3 : Fin k0_t3_loop.trips, ∀ a, (k0_off1134 k0_t3) a + S1x1x1x16.size a ≤ S2x4x4x1024.size a
  k0_off1135_inb : ∀ k0_t3 : Fin k0_t3_loop.trips, ∀ a, (k0_off1135 k0_t3) a + S1x1x1x16.size a ≤ S4x4x4x1024.size a
  k0_off1136_inb : ∀ k0_t3 : Fin k0_t3_loop.trips, ∀ a, (k0_off1136 k0_t3) a + S1x1x1x16.size a ≤ S2x4x4x1024.size a
  k0_off1137_inb : ∀ k0_t3 : Fin k0_t3_loop.trips, ∀ a, (k0_off1137 k0_t3) a + S1x1x1x16.size a ≤ S4x4x4x1024.size a
  k0_off1138_inb : ∀ k0_t3 : Fin k0_t3_loop.trips, ∀ a, (k0_off1138 k0_t3) a + S1x1x1x16.size a ≤ S2x4x4x1024.size a
  k0_off1139_inb : ∀ k0_t3 : Fin k0_t3_loop.trips, ∀ a, (k0_off1139 k0_t3) a + S1x1x1x16.size a ≤ S4x4x4x1024.size a
  k0_off1140_inb : ∀ k0_t3 : Fin k0_t3_loop.trips, ∀ a, (k0_off1140 k0_t3) a + S1x1x1x16.size a ≤ S2x4x4x1024.size a
  k0_off1141_inb : ∀ k0_t3 : Fin k0_t3_loop.trips, ∀ a, (k0_off1141 k0_t3) a + S1x1x1x16.size a ≤ S4x4x4x1024.size a
  k0_off1142_inb : ∀ k0_t3 : Fin k0_t3_loop.trips, ∀ a, (k0_off1142 k0_t3) a + S1x1x1x16.size a ≤ S2x4x4x1024.size a
  k0_off1143_inb : ∀ k0_t3 : Fin k0_t3_loop.trips, ∀ a, (k0_off1143 k0_t3) a + S1x1x1x16.size a ≤ S4x4x4x1024.size a
  k0_off1144_inb : ∀ k0_t3 : Fin k0_t3_loop.trips, ∀ a, (k0_off1144 k0_t3) a + S1x1x1x16.size a ≤ S2x4x4x1024.size a
  k0_off1145_inb : ∀ k0_t3 : Fin k0_t3_loop.trips, ∀ a, (k0_off1145 k0_t3) a + S1x1x1x16.size a ≤ S4x4x4x1024.size a
  k0_off1146_inb : ∀ k0_t3 : Fin k0_t3_loop.trips, ∀ a, (k0_off1146 k0_t3) a + S1x1x1x16.size a ≤ S2x4x4x1024.size a
  k0_off1147_inb : ∀ k0_t3 : Fin k0_t3_loop.trips, ∀ a, (k0_off1147 k0_t3) a + S1x1x1x16.size a ≤ S4x4x4x1024.size a
  k0_off1148_inb : ∀ k0_t3 : Fin k0_t3_loop.trips, ∀ a, (k0_off1148 k0_t3) a + S1x1x1x16.size a ≤ S2x4x4x1024.size a
  k0_off1149_inb : ∀ k0_t3 : Fin k0_t3_loop.trips, ∀ a, (k0_off1149 k0_t3) a + S1x1x1x16.size a ≤ S4x4x4x1024.size a
  k0_off1150_inb : ∀ k0_t3 : Fin k0_t3_loop.trips, ∀ a, (k0_off1150 k0_t3) a + S1x1x1x16.size a ≤ S2x4x4x1024.size a
  k0_off1151_inb : ∀ k0_t3 : Fin k0_t3_loop.trips, ∀ a, (k0_off1151 k0_t3) a + S1x1x1x16.size a ≤ S4x4x4x1024.size a
  k0_off1152_inb : ∀ k0_t3 : Fin k0_t3_loop.trips, ∀ a, (k0_off1152 k0_t3) a + S1x1x1x16.size a ≤ S2x4x4x1024.size a
  k0_off1153_inb : ∀ k0_t3 : Fin k0_t3_loop.trips, ∀ a, (k0_off1153 k0_t3) a + S1x1x1x16.size a ≤ S4x4x4x1024.size a
  k0_off1154_inb : ∀ k0_t3 : Fin k0_t3_loop.trips, ∀ a, (k0_off1154 k0_t3) a + S1x1x1x16.size a ≤ S2x4x4x1024.size a
  k0_off1155_inb : ∀ k0_t3 : Fin k0_t3_loop.trips, ∀ a, (k0_off1155 k0_t3) a + S1x1x1x16.size a ≤ S4x4x4x1024.size a
  k0_off1156_inb : ∀ k0_t3 : Fin k0_t3_loop.trips, ∀ a, (k0_off1156 k0_t3) a + S1x1x1x16.size a ≤ S2x4x4x1024.size a
  k0_off1157_inb : ∀ k0_t3 : Fin k0_t3_loop.trips, ∀ a, (k0_off1157 k0_t3) a + S1x1x1x16.size a ≤ S4x4x4x1024.size a
  k0_off1158_inb : ∀ k0_t3 : Fin k0_t3_loop.trips, ∀ a, (k0_off1158 k0_t3) a + S1x1x1x16.size a ≤ S2x4x4x1024.size a
  k0_off1159_inb : ∀ k0_t3 : Fin k0_t3_loop.trips, ∀ a, (k0_off1159 k0_t3) a + S1x1x1x16.size a ≤ S4x4x4x1024.size a
  k0_off1160_inb : ∀ k0_t3 : Fin k0_t3_loop.trips, ∀ a, (k0_off1160 k0_t3) a + S1x1x1x16.size a ≤ S2x4x4x1024.size a
  k0_off1161_inb : ∀ k0_t3 : Fin k0_t3_loop.trips, ∀ a, (k0_off1161 k0_t3) a + S1x1x1x16.size a ≤ S4x4x4x1024.size a
  k0_off1162_inb : ∀ k0_t3 : Fin k0_t3_loop.trips, ∀ a, (k0_off1162 k0_t3) a + S1x1x1x16.size a ≤ S2x4x4x1024.size a
  k0_off1163_inb : ∀ k0_t3 : Fin k0_t3_loop.trips, ∀ a, (k0_off1163 k0_t3) a + S1x1x1x16.size a ≤ S4x4x4x1024.size a
  k0_off1164_inb : ∀ k0_t3 : Fin k0_t3_loop.trips, ∀ a, (k0_off1164 k0_t3) a + S1x1x1x16.size a ≤ S2x4x4x1024.size a
  k0_off1165_inb : ∀ k0_t3 : Fin k0_t3_loop.trips, ∀ a, (k0_off1165 k0_t3) a + S1x1x1x16.size a ≤ S4x4x4x1024.size a
  k0_off1166_inb : ∀ k0_t3 : Fin k0_t3_loop.trips, ∀ a, (k0_off1166 k0_t3) a + S1x1x1x16.size a ≤ S2x4x4x1024.size a
  k0_off1167_inb : ∀ k0_t3 : Fin k0_t3_loop.trips, ∀ a, (k0_off1167 k0_t3) a + S1x1x1x16.size a ≤ S4x4x4x1024.size a
  k0_off1168_inb : ∀ k0_t3 : Fin k0_t3_loop.trips, ∀ a, (k0_off1168 k0_t3) a + S1x1x1x16.size a ≤ S2x4x4x1024.size a
  k0_off1169_inb : ∀ k0_t3 : Fin k0_t3_loop.trips, ∀ a, (k0_off1169 k0_t3) a + S1x1x1x16.size a ≤ S4x4x4x1024.size a
  k0_off1170_inb : ∀ k0_t3 : Fin k0_t3_loop.trips, ∀ a, (k0_off1170 k0_t3) a + S1x1x1x16.size a ≤ S2x4x4x1024.size a
  k0_off1171_inb : ∀ k0_t3 : Fin k0_t3_loop.trips, ∀ a, (k0_off1171 k0_t3) a + S1x1x1x16.size a ≤ S4x4x4x1024.size a
  k0_off1172_inb : ∀ k0_t3 : Fin k0_t3_loop.trips, ∀ a, (k0_off1172 k0_t3) a + S1x1x1x16.size a ≤ S2x4x4x1024.size a
  k0_off1173_inb : ∀ k0_t3 : Fin k0_t3_loop.trips, ∀ a, (k0_off1173 k0_t3) a + S1x1x1x16.size a ≤ S4x4x4x1024.size a
  k0_off1174_inb : ∀ k0_t3 : Fin k0_t3_loop.trips, ∀ a, (k0_off1174 k0_t3) a + S1x1x1x16.size a ≤ S2x4x4x1024.size a
  k0_off1175_inb : ∀ k0_t3 : Fin k0_t3_loop.trips, ∀ a, (k0_off1175 k0_t3) a + S1x1x1x16.size a ≤ S4x4x4x1024.size a
  k0_off1176_inb : ∀ k0_t3 : Fin k0_t3_loop.trips, ∀ a, (k0_off1176 k0_t3) a + S1x1x1x16.size a ≤ S2x4x4x1024.size a
  k0_off1177_inb : ∀ k0_t3 : Fin k0_t3_loop.trips, ∀ a, (k0_off1177 k0_t3) a + S1x1x1x16.size a ≤ S4x4x4x1024.size a
  k0_off1178_inb : ∀ k0_t3 : Fin k0_t3_loop.trips, ∀ a, (k0_off1178 k0_t3) a + S1x1x1x16.size a ≤ S2x4x4x1024.size a
  k0_off1179_inb : ∀ k0_t3 : Fin k0_t3_loop.trips, ∀ a, (k0_off1179 k0_t3) a + S1x1x1x16.size a ≤ S4x4x4x1024.size a
  k0_off1180_inb : ∀ k0_t3 : Fin k0_t3_loop.trips, ∀ a, (k0_off1180 k0_t3) a + S1x1x1x16.size a ≤ S2x4x4x1024.size a
  k0_off1181_inb : ∀ k0_t3 : Fin k0_t3_loop.trips, ∀ a, (k0_off1181 k0_t3) a + S1x1x1x16.size a ≤ S4x4x4x1024.size a
  k0_off1182_inb : ∀ k0_t3 : Fin k0_t3_loop.trips, ∀ a, (k0_off1182 k0_t3) a + S1x1x1x16.size a ≤ S2x4x4x1024.size a
  k0_off1183_inb : ∀ k0_t3 : Fin k0_t3_loop.trips, ∀ a, (k0_off1183 k0_t3) a + S1x1x1x16.size a ≤ S4x4x4x1024.size a
  k0_off1184_inb : ∀ k0_t3 : Fin k0_t3_loop.trips, ∀ a, (k0_off1184 k0_t3) a + S1x1x1x16.size a ≤ S2x4x4x1024.size a
  k0_off1185_inb : ∀ (i : grid0.Coords) (k0_t1 : Fin k0_t1_loop.trips), ∀ (k0_h5 : k0_cond5 k0_t1 = 1#1), ∀ a, (k0_off1185 i k0_t1) a + S4x1024.size a ≤ S4096x1024.size a
  k0_off1186_inb : ∀ (i : grid0.Coords) (k0_t1 : Fin k0_t1_loop.trips), ∀ (k0_h5 : k0_cond5 k0_t1 = 1#1), ∀ a, (k0_off1186 i k0_t1) a + S1x4x1024.size a ≤ S4x4096x1024.size a
  k0_off1187_inb : ∀ (i : grid0.Coords) (k0_t1 : Fin k0_t1_loop.trips), ∀ (k0_h5 : k0_cond5 k0_t1 = 1#1), ∀ a, (k0_off1187 i k0_t1) a + S1x4x1024.size a ≤ S4x4096x1024.size a
  k0_off1188_inb : ∀ (i : grid0.Coords) (k0_t1 : Fin k0_t1_loop.trips), ∀ (k0_h5 : k0_cond5 k0_t1 = 1#1), ∀ a, (k0_off1188 i k0_t1) a + S1x4x1024.size a ≤ S4x4096x1024.size a
  k0_off1189_inb : ∀ (i : grid0.Coords) (k0_t1 : Fin k0_t1_loop.trips), ∀ (k0_h5 : k0_cond5 k0_t1 = 1#1), ∀ a, (k0_off1189 i k0_t1) a + S1x4x1024.size a ≤ S4x4096x1024.size a
  k0_t4_ok : k0_t4_loop.OK
  k0_off1190_inb : ∀ k0_t4 : Fin k0_t4_loop.trips, ∀ a, (k0_off1190 k0_t4) a + S1x1x16.size a ≤ S4x4x1024.size a
  k0_off1191_inb : ∀ k0_t4 : Fin k0_t4_loop.trips, ∀ a, (k0_off1191 k0_t4) a + S1x1x16.size a ≤ S4x4x1024.size a
  k0_off1192_inb : ∀ k0_t4 : Fin k0_t4_loop.trips, ∀ a, (k0_off1192 k0_t4) a + S1x1x16.size a ≤ S4x4x1024.size a
  k0_off1193_inb : ∀ k0_t4 : Fin k0_t4_loop.trips, ∀ a, (k0_off1193 k0_t4) a + S1x1x16.size a ≤ S4x4x1024.size a
  k0_off1194_inb : ∀ k0_t4 : Fin k0_t4_loop.trips, ∀ a, (k0_off1194 k0_t4) a + S1x1x16.size a ≤ S4x4x1024.size a
  k0_off1195_inb : ∀ k0_t4 : Fin k0_t4_loop.trips, ∀ a, (k0_off1195 k0_t4) a + S1x1x16.size a ≤ S4x4x1024.size a
  k0_off1196_inb : ∀ k0_t4 : Fin k0_t4_loop.trips, ∀ a, (k0_off1196 k0_t4) a + S1x1x16.size a ≤ S4x4x1024.size a
  k0_off1197_inb : ∀ k0_t4 : Fin k0_t4_loop.trips, ∀ a, (k0_off1197 k0_t4) a + S1x1x16.size a ≤ S4x4x1024.size a
  k0_off1198_inb : ∀ k0_t4 : Fin k0_t4_loop.trips, ∀ a, (k0_off1198 k0_t4) a + S1x1x16.size a ≤ S4x4x1024.size a
  k0_off1199_inb : ∀ k0_t4 : Fin k0_t4_loop.trips, ∀ a, (k0_off1199 k0_t4) a + S1x1x16.size a ≤ S4x4x1024.size a
  k0_off1200_inb : ∀ k0_t4 : Fin k0_t4_loop.trips, ∀ a, (k0_off1200 k0_t4) a + S1x1x16.size a ≤ S4x4x1024.size a
  k0_off1201_inb : ∀ k0_t4 : Fin k0_t4_loop.trips, ∀ a, (k0_off1201 k0_t4) a + S1x1x16.size a ≤ S4x4x1024.size a
  k0_off1202_inb : ∀ k0_t4 : Fin k0_t4_loop.trips, ∀ a, (k0_off1202 k0_t4) a + S1x1x16.size a ≤ S4x4x1024.size a
  k0_off1203_inb : ∀ k0_t4 : Fin k0_t4_loop.trips, ∀ a, (k0_off1203 k0_t4) a + S1x1x16.size a ≤ S4x4x1024.size a
  k0_off1204_inb : ∀ k0_t4 : Fin k0_t4_loop.trips, ∀ a, (k0_off1204 k0_t4) a + S1x1x16.size a ≤ S4x4x1024.size a
  k0_off1205_inb : ∀ k0_t4 : Fin k0_t4_loop.trips, ∀ a, (k0_off1205 k0_t4) a + S1x1x16.size a ≤ S4x4x1024.size a
  k0_off1206_inb : ∀ k0_t4 : Fin k0_t4_loop.trips, ∀ a, (k0_off1206 k0_t4) a + S1x1x16.size a ≤ S4x4x1024.size a
  k0_off1207_inb : ∀ k0_t4 : Fin k0_t4_loop.trips, ∀ a, (k0_off1207 k0_t4) a + S1x1x16.size a ≤ S4x4x1024.size a
  k0_off1208_inb : ∀ k0_t4 : Fin k0_t4_loop.trips, ∀ a, (k0_off1208 k0_t4) a + S1x1x16.size a ≤ S4x4x1024.size a
  k0_off1209_inb : ∀ k0_t4 : Fin k0_t4_loop.trips, ∀ a, (k0_off1209 k0_t4) a + S1x1x16.size a ≤ S4x4x1024.size a
  k0_off1210_inb : ∀ k0_t4 : Fin k0_t4_loop.trips, ∀ a, (k0_off1210 k0_t4) a + S1x1x16.size a ≤ S4x4x1024.size a
  k0_off1211_inb : ∀ k0_t4 : Fin k0_t4_loop.trips, ∀ a, (k0_off1211 k0_t4) a + S1x1x16.size a ≤ S4x4x1024.size a
  k0_off1212_inb : ∀ k0_t4 : Fin k0_t4_loop.trips, ∀ a, (k0_off1212 k0_t4) a + S1x1x16.size a ≤ S4x4x1024.size a
  k0_off1213_inb : ∀ k0_t4 : Fin k0_t4_loop.trips, ∀ a, (k0_off1213 k0_t4) a + S1x1x16.size a ≤ S4x4x1024.size a
  k0_off1214_inb : ∀ k0_t4 : Fin k0_t4_loop.trips, ∀ a, (k0_off1214 k0_t4) a + S1x1x16.size a ≤ S4x4x1024.size a
  k0_off1215_inb : ∀ k0_t4 : Fin k0_t4_loop.trips, ∀ a, (k0_off1215 k0_t4) a + S1x1x16.size a ≤ S4x4x1024.size a
  k0_off1216_inb : ∀ k0_t4 : Fin k0_t4_loop.trips, ∀ a, (k0_off1216 k0_t4) a + S1x1x16.size a ≤ S4x4x1024.size a
  k0_off1217_inb : ∀ k0_t4 : Fin k0_t4_loop.trips, ∀ a, (k0_off1217 k0_t4) a + S1x1x16.size a ≤ S4x4x1024.size a
  k0_off1218_inb : ∀ k0_t4 : Fin k0_t4_loop.trips, ∀ a, (k0_off1218 k0_t4) a + S1x1x16.size a ≤ S4x4x1024.size a
  k0_off1219_inb : ∀ k0_t4 : Fin k0_t4_loop.trips, ∀ a, (k0_off1219 k0_t4) a + S1x1x16.size a ≤ S4x4x1024.size a
  k0_off1220_inb : ∀ k0_t4 : Fin k0_t4_loop.trips, ∀ a, (k0_off1220 k0_t4) a + S1x1x16.size a ≤ S4x4x1024.size a
  k0_off1221_inb : ∀ k0_t4 : Fin k0_t4_loop.trips, ∀ a, (k0_off1221 k0_t4) a + S1x1x16.size a ≤ S4x4x1024.size a
  k0_off1222_inb : ∀ k0_t4 : Fin k0_t4_loop.trips, ∀ a, (k0_off1222 k0_t4) a + S1x1x1x16.size a ≤ S4x4x4x1024.size a
  k0_off1223_inb : ∀ k0_t4 : Fin k0_t4_loop.trips, ∀ a, (k0_off1223 k0_t4) a + S1x1x1x16.size a ≤ S2x4x4x1024.size a
  k0_off1224_inb : ∀ k0_t4 : Fin k0_t4_loop.trips, ∀ a, (k0_off1224 k0_t4) a + S1x1x1x16.size a ≤ S4x4x4x1024.size a
  k0_off1225_inb : ∀ k0_t4 : Fin k0_t4_loop.trips, ∀ a, (k0_off1225 k0_t4) a + S1x1x1x16.size a ≤ S2x4x4x1024.size a
  k0_off1226_inb : ∀ k0_t4 : Fin k0_t4_loop.trips, ∀ a, (k0_off1226 k0_t4) a + S1x1x1x16.size a ≤ S4x4x4x1024.size a
  k0_off1227_inb : ∀ k0_t4 : Fin k0_t4_loop.trips, ∀ a, (k0_off1227 k0_t4) a + S1x1x1x16.size a ≤ S2x4x4x1024.size a
  k0_off1228_inb : ∀ k0_t4 : Fin k0_t4_loop.trips, ∀ a, (k0_off1228 k0_t4) a + S1x1x1x16.size a ≤ S4x4x4x1024.size a
  k0_off1229_inb : ∀ k0_t4 : Fin k0_t4_loop.trips, ∀ a, (k0_off1229 k0_t4) a + S1x1x1x16.size a ≤ S2x4x4x1024.size a
  k0_off1230_inb : ∀ k0_t4 : Fin k0_t4_loop.trips, ∀ a, (k0_off1230 k0_t4) a + S1x1x1x16.size a ≤ S4x4x4x1024.size a
  k0_off1231_inb : ∀ k0_t4 : Fin k0_t4_loop.trips, ∀ a, (k0_off1231 k0_t4) a + S1x1x1x16.size a ≤ S2x4x4x1024.size a
  k0_off1232_inb : ∀ k0_t4 : Fin k0_t4_loop.trips, ∀ a, (k0_off1232 k0_t4) a + S1x1x1x16.size a ≤ S4x4x4x1024.size a
  k0_off1233_inb : ∀ k0_t4 : Fin k0_t4_loop.trips, ∀ a, (k0_off1233 k0_t4) a + S1x1x1x16.size a ≤ S2x4x4x1024.size a
  k0_off1234_inb : ∀ k0_t4 : Fin k0_t4_loop.trips, ∀ a, (k0_off1234 k0_t4) a + S1x1x1x16.size a ≤ S4x4x4x1024.size a
  k0_off1235_inb : ∀ k0_t4 : Fin k0_t4_loop.trips, ∀ a, (k0_off1235 k0_t4) a + S1x1x1x16.size a ≤ S2x4x4x1024.size a
  k0_off1236_inb : ∀ k0_t4 : Fin k0_t4_loop.trips, ∀ a, (k0_off1236 k0_t4) a + S1x1x1x16.size a ≤ S4x4x4x1024.size a
  k0_off1237_inb : ∀ k0_t4 : Fin k0_t4_loop.trips, ∀ a, (k0_off1237 k0_t4) a + S1x1x1x16.size a ≤ S2x4x4x1024.size a
  k0_off1238_inb : ∀ k0_t4 : Fin k0_t4_loop.trips, ∀ a, (k0_off1238 k0_t4) a + S1x1x1x16.size a ≤ S4x4x4x1024.size a
  k0_off1239_inb : ∀ k0_t4 : Fin k0_t4_loop.trips, ∀ a, (k0_off1239 k0_t4) a + S1x1x1x16.size a ≤ S2x4x4x1024.size a
  k0_off1240_inb : ∀ k0_t4 : Fin k0_t4_loop.trips, ∀ a, (k0_off1240 k0_t4) a + S1x1x1x16.size a ≤ S4x4x4x1024.size a
  k0_off1241_inb : ∀ k0_t4 : Fin k0_t4_loop.trips, ∀ a, (k0_off1241 k0_t4) a + S1x1x1x16.size a ≤ S2x4x4x1024.size a
  k0_off1242_inb : ∀ k0_t4 : Fin k0_t4_loop.trips, ∀ a, (k0_off1242 k0_t4) a + S1x1x1x16.size a ≤ S4x4x4x1024.size a
  k0_off1243_inb : ∀ k0_t4 : Fin k0_t4_loop.trips, ∀ a, (k0_off1243 k0_t4) a + S1x1x1x16.size a ≤ S2x4x4x1024.size a
  k0_off1244_inb : ∀ k0_t4 : Fin k0_t4_loop.trips, ∀ a, (k0_off1244 k0_t4) a + S1x1x1x16.size a ≤ S4x4x4x1024.size a
  k0_off1245_inb : ∀ k0_t4 : Fin k0_t4_loop.trips, ∀ a, (k0_off1245 k0_t4) a + S1x1x1x16.size a ≤ S2x4x4x1024.size a
  k0_off1246_inb : ∀ k0_t4 : Fin k0_t4_loop.trips, ∀ a, (k0_off1246 k0_t4) a + S1x1x1x16.size a ≤ S4x4x4x1024.size a
  k0_off1247_inb : ∀ k0_t4 : Fin k0_t4_loop.trips, ∀ a, (k0_off1247 k0_t4) a + S1x1x1x16.size a ≤ S2x4x4x1024.size a
  k0_off1248_inb : ∀ k0_t4 : Fin k0_t4_loop.trips, ∀ a, (k0_off1248 k0_t4) a + S1x1x1x16.size a ≤ S4x4x4x1024.size a
  k0_off1249_inb : ∀ k0_t4 : Fin k0_t4_loop.trips, ∀ a, (k0_off1249 k0_t4) a + S1x1x1x16.size a ≤ S2x4x4x1024.size a
  k0_off1250_inb : ∀ k0_t4 : Fin k0_t4_loop.trips, ∀ a, (k0_off1250 k0_t4) a + S1x1x1x16.size a ≤ S4x4x4x1024.size a
  k0_off1251_inb : ∀ k0_t4 : Fin k0_t4_loop.trips, ∀ a, (k0_off1251 k0_t4) a + S1x1x1x16.size a ≤ S2x4x4x1024.size a
  k0_off1252_inb : ∀ k0_t4 : Fin k0_t4_loop.trips, ∀ a, (k0_off1252 k0_t4) a + S1x1x1x16.size a ≤ S4x4x4x1024.size a
  k0_off1253_inb : ∀ k0_t4 : Fin k0_t4_loop.trips, ∀ a, (k0_off1253 k0_t4) a + S1x1x1x16.size a ≤ S2x4x4x1024.size a
  k0_off1254_inb : ∀ k0_t4 : Fin k0_t4_loop.trips, ∀ a, (k0_off1254 k0_t4) a + S1x1x1x16.size a ≤ S4x4x4x1024.size a
  k0_off1255_inb : ∀ k0_t4 : Fin k0_t4_loop.trips, ∀ a, (k0_off1255 k0_t4) a + S1x1x1x16.size a ≤ S2x4x4x1024.size a
  k0_off1256_inb : ∀ k0_t4 : Fin k0_t4_loop.trips, ∀ a, (k0_off1256 k0_t4) a + S1x1x1x16.size a ≤ S4x4x4x1024.size a
  k0_off1257_inb : ∀ k0_t4 : Fin k0_t4_loop.trips, ∀ a, (k0_off1257 k0_t4) a + S1x1x1x16.size a ≤ S2x4x4x1024.size a
  k0_off1258_inb : ∀ k0_t4 : Fin k0_t4_loop.trips, ∀ a, (k0_off1258 k0_t4) a + S1x1x1x16.size a ≤ S4x4x4x1024.size a
  k0_off1259_inb : ∀ k0_t4 : Fin k0_t4_loop.trips, ∀ a, (k0_off1259 k0_t4) a + S1x1x1x16.size a ≤ S2x4x4x1024.size a
  k0_off1260_inb : ∀ k0_t4 : Fin k0_t4_loop.trips, ∀ a, (k0_off1260 k0_t4) a + S1x1x1x16.size a ≤ S4x4x4x1024.size a
  k0_off1261_inb : ∀ k0_t4 : Fin k0_t4_loop.trips, ∀ a, (k0_off1261 k0_t4) a + S1x1x1x16.size a ≤ S2x4x4x1024.size a
  k0_off1262_inb : ∀ k0_t4 : Fin k0_t4_loop.trips, ∀ a, (k0_off1262 k0_t4) a + S1x1x1x16.size a ≤ S4x4x4x1024.size a
  k0_off1263_inb : ∀ k0_t4 : Fin k0_t4_loop.trips, ∀ a, (k0_off1263 k0_t4) a + S1x1x1x16.size a ≤ S2x4x4x1024.size a
  k0_off1264_inb : ∀ k0_t4 : Fin k0_t4_loop.trips, ∀ a, (k0_off1264 k0_t4) a + S1x1x1x16.size a ≤ S4x4x4x1024.size a
  k0_off1265_inb : ∀ k0_t4 : Fin k0_t4_loop.trips, ∀ a, (k0_off1265 k0_t4) a + S1x1x1x16.size a ≤ S2x4x4x1024.size a
  k0_off1266_inb : ∀ k0_t4 : Fin k0_t4_loop.trips, ∀ a, (k0_off1266 k0_t4) a + S1x1x1x16.size a ≤ S4x4x4x1024.size a
  k0_off1267_inb : ∀ k0_t4 : Fin k0_t4_loop.trips, ∀ a, (k0_off1267 k0_t4) a + S1x1x1x16.size a ≤ S2x4x4x1024.size a
  k0_off1268_inb : ∀ k0_t4 : Fin k0_t4_loop.trips, ∀ a, (k0_off1268 k0_t4) a + S1x1x1x16.size a ≤ S4x4x4x1024.size a
  k0_off1269_inb : ∀ k0_t4 : Fin k0_t4_loop.trips, ∀ a, (k0_off1269 k0_t4) a + S1x1x1x16.size a ≤ S2x4x4x1024.size a
  k0_off1270_inb : ∀ k0_t4 : Fin k0_t4_loop.trips, ∀ a, (k0_off1270 k0_t4) a + S1x1x1x16.size a ≤ S4x4x4x1024.size a
  k0_off1271_inb : ∀ k0_t4 : Fin k0_t4_loop.trips, ∀ a, (k0_off1271 k0_t4) a + S1x1x1x16.size a ≤ S2x4x4x1024.size a
  k0_off1272_inb : ∀ k0_t4 : Fin k0_t4_loop.trips, ∀ a, (k0_off1272 k0_t4) a + S1x1x1x16.size a ≤ S4x4x4x1024.size a
  k0_off1273_inb : ∀ k0_t4 : Fin k0_t4_loop.trips, ∀ a, (k0_off1273 k0_t4) a + S1x1x1x16.size a ≤ S2x4x4x1024.size a
  k0_off1274_inb : ∀ k0_t4 : Fin k0_t4_loop.trips, ∀ a, (k0_off1274 k0_t4) a + S1x1x1x16.size a ≤ S4x4x4x1024.size a
  k0_off1275_inb : ∀ k0_t4 : Fin k0_t4_loop.trips, ∀ a, (k0_off1275 k0_t4) a + S1x1x1x16.size a ≤ S2x4x4x1024.size a
  k0_off1276_inb : ∀ k0_t4 : Fin k0_t4_loop.trips, ∀ a, (k0_off1276 k0_t4) a + S1x1x1x16.size a ≤ S4x4x4x1024.size a
  k0_off1277_inb : ∀ k0_t4 : Fin k0_t4_loop.trips, ∀ a, (k0_off1277 k0_t4) a + S1x1x1x16.size a ≤ S2x4x4x1024.size a
  k0_off1278_inb : ∀ k0_t4 : Fin k0_t4_loop.trips, ∀ a, (k0_off1278 k0_t4) a + S1x1x1x16.size a ≤ S4x4x4x1024.size a
  k0_off1279_inb : ∀ k0_t4 : Fin k0_t4_loop.trips, ∀ a, (k0_off1279 k0_t4) a + S1x1x1x16.size a ≤ S2x4x4x1024.size a
  k0_off1280_inb : ∀ k0_t4 : Fin k0_t4_loop.trips, ∀ a, (k0_off1280 k0_t4) a + S1x1x1x16.size a ≤ S4x4x4x1024.size a
  k0_off1281_inb : ∀ k0_t4 : Fin k0_t4_loop.trips, ∀ a, (k0_off1281 k0_t4) a + S1x1x1x16.size a ≤ S2x4x4x1024.size a
  k0_off1282_inb : ∀ k0_t4 : Fin k0_t4_loop.trips, ∀ a, (k0_off1282 k0_t4) a + S1x1x1x16.size a ≤ S4x4x4x1024.size a
  k0_off1283_inb : ∀ k0_t4 : Fin k0_t4_loop.trips, ∀ a, (k0_off1283 k0_t4) a + S1x1x1x16.size a ≤ S2x4x4x1024.size a
  k0_off1284_inb : ∀ k0_t4 : Fin k0_t4_loop.trips, ∀ a, (k0_off1284 k0_t4) a + S1x1x1x16.size a ≤ S4x4x4x1024.size a
  k0_off1285_inb : ∀ k0_t4 : Fin k0_t4_loop.trips, ∀ a, (k0_off1285 k0_t4) a + S1x1x1x16.size a ≤ S2x4x4x1024.size a
  k0_off1286_inb : ∀ k0_t4 : Fin k0_t4_loop.trips, ∀ a, (k0_off1286 k0_t4) a + S1x1x1x16.size a ≤ S4x4x4x1024.size a
  k0_off1287_inb : ∀ k0_t4 : Fin k0_t4_loop.trips, ∀ a, (k0_off1287 k0_t4) a + S1x1x1x16.size a ≤ S2x4x4x1024.size a
  k0_off1288_inb : ∀ k0_t4 : Fin k0_t4_loop.trips, ∀ a, (k0_off1288 k0_t4) a + S1x1x1x16.size a ≤ S4x4x4x1024.size a
  k0_off1289_inb : ∀ k0_t4 : Fin k0_t4_loop.trips, ∀ a, (k0_off1289 k0_t4) a + S1x1x1x16.size a ≤ S2x4x4x1024.size a
  k0_off1290_inb : ∀ k0_t4 : Fin k0_t4_loop.trips, ∀ a, (k0_off1290 k0_t4) a + S1x1x1x16.size a ≤ S4x4x4x1024.size a
  k0_off1291_inb : ∀ k0_t4 : Fin k0_t4_loop.trips, ∀ a, (k0_off1291 k0_t4) a + S1x1x1x16.size a ≤ S2x4x4x1024.size a
  k0_off1292_inb : ∀ k0_t4 : Fin k0_t4_loop.trips, ∀ a, (k0_off1292 k0_t4) a + S1x1x1x16.size a ≤ S4x4x4x1024.size a
  k0_off1293_inb : ∀ k0_t4 : Fin k0_t4_loop.trips, ∀ a, (k0_off1293 k0_t4) a + S1x1x1x16.size a ≤ S2x4x4x1024.size a
  k0_off1294_inb : ∀ k0_t4 : Fin k0_t4_loop.trips, ∀ a, (k0_off1294 k0_t4) a + S1x1x1x16.size a ≤ S4x4x4x1024.size a
  k0_off1295_inb : ∀ k0_t4 : Fin k0_t4_loop.trips, ∀ a, (k0_off1295 k0_t4) a + S1x1x1x16.size a ≤ S2x4x4x1024.size a
  k0_off1296_inb : ∀ k0_t4 : Fin k0_t4_loop.trips, ∀ a, (k0_off1296 k0_t4) a + S1x1x1x16.size a ≤ S4x4x4x1024.size a
  k0_off1297_inb : ∀ k0_t4 : Fin k0_t4_loop.trips, ∀ a, (k0_off1297 k0_t4) a + S1x1x1x16.size a ≤ S2x4x4x1024.size a
  k0_off1298_inb : ∀ k0_t4 : Fin k0_t4_loop.trips, ∀ a, (k0_off1298 k0_t4) a + S1x1x1x16.size a ≤ S4x4x4x1024.size a
  k0_off1299_inb : ∀ k0_t4 : Fin k0_t4_loop.trips, ∀ a, (k0_off1299 k0_t4) a + S1x1x1x16.size a ≤ S2x4x4x1024.size a
  k0_off1300_inb : ∀ k0_t4 : Fin k0_t4_loop.trips, ∀ a, (k0_off1300 k0_t4) a + S1x1x1x16.size a ≤ S4x4x4x1024.size a
  k0_off1301_inb : ∀ k0_t4 : Fin k0_t4_loop.trips, ∀ a, (k0_off1301 k0_t4) a + S1x1x1x16.size a ≤ S2x4x4x1024.size a
  k0_off1302_inb : ∀ k0_t4 : Fin k0_t4_loop.trips, ∀ a, (k0_off1302 k0_t4) a + S1x1x1x16.size a ≤ S4x4x4x1024.size a
  k0_off1303_inb : ∀ k0_t4 : Fin k0_t4_loop.trips, ∀ a, (k0_off1303 k0_t4) a + S1x1x1x16.size a ≤ S2x4x4x1024.size a
  k0_off1304_inb : ∀ k0_t4 : Fin k0_t4_loop.trips, ∀ a, (k0_off1304 k0_t4) a + S1x1x1x16.size a ≤ S4x4x4x1024.size a
  k0_off1305_inb : ∀ k0_t4 : Fin k0_t4_loop.trips, ∀ a, (k0_off1305 k0_t4) a + S1x1x1x16.size a ≤ S2x4x4x1024.size a
  k0_off1306_inb : ∀ k0_t4 : Fin k0_t4_loop.trips, ∀ a, (k0_off1306 k0_t4) a + S1x1x1x16.size a ≤ S4x4x4x1024.size a
  k0_off1307_inb : ∀ k0_t4 : Fin k0_t4_loop.trips, ∀ a, (k0_off1307 k0_t4) a + S1x1x1x16.size a ≤ S2x4x4x1024.size a
  k0_off1308_inb : ∀ k0_t4 : Fin k0_t4_loop.trips, ∀ a, (k0_off1308 k0_t4) a + S1x1x1x16.size a ≤ S4x4x4x1024.size a
  k0_off1309_inb : ∀ k0_t4 : Fin k0_t4_loop.trips, ∀ a, (k0_off1309 k0_t4) a + S1x1x1x16.size a ≤ S2x4x4x1024.size a
  k0_off1310_inb : ∀ k0_t4 : Fin k0_t4_loop.trips, ∀ a, (k0_off1310 k0_t4) a + S1x1x1x16.size a ≤ S4x4x4x1024.size a
  k0_off1311_inb : ∀ k0_t4 : Fin k0_t4_loop.trips, ∀ a, (k0_off1311 k0_t4) a + S1x1x1x16.size a ≤ S2x4x4x1024.size a
  k0_off1312_inb : ∀ k0_t4 : Fin k0_t4_loop.trips, ∀ a, (k0_off1312 k0_t4) a + S1x1x1x16.size a ≤ S4x4x4x1024.size a
  k0_off1313_inb : ∀ k0_t4 : Fin k0_t4_loop.trips, ∀ a, (k0_off1313 k0_t4) a + S1x1x1x16.size a ≤ S2x4x4x1024.size a
  k0_off1314_inb : ∀ k0_t4 : Fin k0_t4_loop.trips, ∀ a, (k0_off1314 k0_t4) a + S1x1x1x16.size a ≤ S4x4x4x1024.size a
  k0_off1315_inb : ∀ k0_t4 : Fin k0_t4_loop.trips, ∀ a, (k0_off1315 k0_t4) a + S1x1x1x16.size a ≤ S2x4x4x1024.size a
  k0_off1316_inb : ∀ k0_t4 : Fin k0_t4_loop.trips, ∀ a, (k0_off1316 k0_t4) a + S1x1x1x16.size a ≤ S4x4x4x1024.size a
  k0_off1317_inb : ∀ k0_t4 : Fin k0_t4_loop.trips, ∀ a, (k0_off1317 k0_t4) a + S1x1x1x16.size a ≤ S2x4x4x1024.size a
  k0_off1318_inb : ∀ k0_t4 : Fin k0_t4_loop.trips, ∀ a, (k0_off1318 k0_t4) a + S1x1x1x16.size a ≤ S4x4x4x1024.size a
  k0_off1319_inb : ∀ k0_t4 : Fin k0_t4_loop.trips, ∀ a, (k0_off1319 k0_t4) a + S1x1x1x16.size a ≤ S2x4x4x1024.size a
  k0_off1320_inb : ∀ k0_t4 : Fin k0_t4_loop.trips, ∀ a, (k0_off1320 k0_t4) a + S1x1x1x16.size a ≤ S4x4x4x1024.size a
  k0_off1321_inb : ∀ k0_t4 : Fin k0_t4_loop.trips, ∀ a, (k0_off1321 k0_t4) a + S1x1x1x16.size a ≤ S2x4x4x1024.size a
  k0_off1322_inb : ∀ k0_t4 : Fin k0_t4_loop.trips, ∀ a, (k0_off1322 k0_t4) a + S1x1x1x16.size a ≤ S4x4x4x1024.size a
  k0_off1323_inb : ∀ k0_t4 : Fin k0_t4_loop.trips, ∀ a, (k0_off1323 k0_t4) a + S1x1x1x16.size a ≤ S2x4x4x1024.size a
  k0_off1324_inb : ∀ k0_t4 : Fin k0_t4_loop.trips, ∀ a, (k0_off1324 k0_t4) a + S1x1x1x16.size a ≤ S4x4x4x1024.size a
  k0_off1325_inb : ∀ k0_t4 : Fin k0_t4_loop.trips, ∀ a, (k0_off1325 k0_t4) a + S1x1x1x16.size a ≤ S2x4x4x1024.size a
  k0_off1326_inb : ∀ k0_t4 : Fin k0_t4_loop.trips, ∀ a, (k0_off1326 k0_t4) a + S1x1x1x16.size a ≤ S4x4x4x1024.size a
  k0_off1327_inb : ∀ k0_t4 : Fin k0_t4_loop.trips, ∀ a, (k0_off1327 k0_t4) a + S1x1x1x16.size a ≤ S2x4x4x1024.size a
  k0_off1328_inb : ∀ k0_t4 : Fin k0_t4_loop.trips, ∀ a, (k0_off1328 k0_t4) a + S1x1x1x16.size a ≤ S4x4x4x1024.size a
  k0_off1329_inb : ∀ k0_t4 : Fin k0_t4_loop.trips, ∀ a, (k0_off1329 k0_t4) a + S1x1x1x16.size a ≤ S2x4x4x1024.size a
  k0_off1330_inb : ∀ k0_t4 : Fin k0_t4_loop.trips, ∀ a, (k0_off1330 k0_t4) a + S1x1x1x16.size a ≤ S4x4x4x1024.size a
  k0_off1331_inb : ∀ k0_t4 : Fin k0_t4_loop.trips, ∀ a, (k0_off1331 k0_t4) a + S1x1x1x16.size a ≤ S2x4x4x1024.size a
  k0_off1332_inb : ∀ k0_t4 : Fin k0_t4_loop.trips, ∀ a, (k0_off1332 k0_t4) a + S1x1x1x16.size a ≤ S4x4x4x1024.size a
  k0_off1333_inb : ∀ k0_t4 : Fin k0_t4_loop.trips, ∀ a, (k0_off1333 k0_t4) a + S1x1x1x16.size a ≤ S2x4x4x1024.size a
  k0_off1334_inb : ∀ k0_t4 : Fin k0_t4_loop.trips, ∀ a, (k0_off1334 k0_t4) a + S1x1x1x16.size a ≤ S4x4x4x1024.size a
  k0_off1335_inb : ∀ k0_t4 : Fin k0_t4_loop.trips, ∀ a, (k0_off1335 k0_t4) a + S1x1x1x16.size a ≤ S2x4x4x1024.size a
  k0_off1336_inb : ∀ k0_t4 : Fin k0_t4_loop.trips, ∀ a, (k0_off1336 k0_t4) a + S1x1x1x16.size a ≤ S4x4x4x1024.size a
  k0_off1337_inb : ∀ k0_t4 : Fin k0_t4_loop.trips, ∀ a, (k0_off1337 k0_t4) a + S1x1x1x16.size a ≤ S2x4x4x1024.size a
  k0_off1338_inb : ∀ k0_t4 : Fin k0_t4_loop.trips, ∀ a, (k0_off1338 k0_t4) a + S1x1x1x16.size a ≤ S4x4x4x1024.size a
  k0_off1339_inb : ∀ k0_t4 : Fin k0_t4_loop.trips, ∀ a, (k0_off1339 k0_t4) a + S1x1x1x16.size a ≤ S2x4x4x1024.size a
  k0_off1340_inb : ∀ k0_t4 : Fin k0_t4_loop.trips, ∀ a, (k0_off1340 k0_t4) a + S1x1x1x16.size a ≤ S4x4x4x1024.size a
  k0_off1341_inb : ∀ k0_t4 : Fin k0_t4_loop.trips, ∀ a, (k0_off1341 k0_t4) a + S1x1x1x16.size a ≤ S2x4x4x1024.size a
  k0_off1342_inb : ∀ k0_t4 : Fin k0_t4_loop.trips, ∀ a, (k0_off1342 k0_t4) a + S1x1x1x16.size a ≤ S4x4x4x1024.size a
  k0_off1343_inb : ∀ k0_t4 : Fin k0_t4_loop.trips, ∀ a, (k0_off1343 k0_t4) a + S1x1x1x16.size a ≤ S2x4x4x1024.size a
  k0_off1344_inb : ∀ k0_t4 : Fin k0_t4_loop.trips, ∀ a, (k0_off1344 k0_t4) a + S1x1x1x16.size a ≤ S4x4x4x1024.size a
  k0_off1345_inb : ∀ k0_t4 : Fin k0_t4_loop.trips, ∀ a, (k0_off1345 k0_t4) a + S1x1x1x16.size a ≤ S2x4x4x1024.size a
  k0_off1346_inb : ∀ k0_t4 : Fin k0_t4_loop.trips, ∀ a, (k0_off1346 k0_t4) a + S1x1x1x16.size a ≤ S4x4x4x1024.size a
  k0_off1347_inb : ∀ k0_t4 : Fin k0_t4_loop.trips, ∀ a, (k0_off1347 k0_t4) a + S1x1x1x16.size a ≤ S2x4x4x1024.size a
  k0_off1348_inb : ∀ k0_t4 : Fin k0_t4_loop.trips, ∀ a, (k0_off1348 k0_t4) a + S1x1x1x16.size a ≤ S4x4x4x1024.size a
  k0_off1349_inb : ∀ k0_t4 : Fin k0_t4_loop.trips, ∀ a, (k0_off1349 k0_t4) a + S1x1x1x16.size a ≤ S2x4x4x1024.size a
  k0_off1350_inb : ∀ k0_t4 : Fin k0_t4_loop.trips, ∀ a, (k0_off1350 k0_t4) a + S1x1x1x16.size a ≤ S4x4x4x1024.size a
  k0_off1351_inb : ∀ k0_t4 : Fin k0_t4_loop.trips, ∀ a, (k0_off1351 k0_t4) a + S1x1x1x16.size a ≤ S2x4x4x1024.size a
  k0_off1352_inb : ∀ k0_t4 : Fin k0_t4_loop.trips, ∀ a, (k0_off1352 k0_t4) a + S1x1x1x16.size a ≤ S4x4x4x1024.size a
  k0_off1353_inb : ∀ k0_t4 : Fin k0_t4_loop.trips, ∀ a, (k0_off1353 k0_t4) a + S1x1x1x16.size a ≤ S2x4x4x1024.size a
  k0_off1354_inb : ∀ k0_t4 : Fin k0_t4_loop.trips, ∀ a, (k0_off1354 k0_t4) a + S1x1x1x16.size a ≤ S4x4x4x1024.size a
  k0_off1355_inb : ∀ k0_t4 : Fin k0_t4_loop.trips, ∀ a, (k0_off1355 k0_t4) a + S1x1x1x16.size a ≤ S2x4x4x1024.size a
  k0_off1356_inb : ∀ k0_t4 : Fin k0_t4_loop.trips, ∀ a, (k0_off1356 k0_t4) a + S1x1x1x16.size a ≤ S4x4x4x1024.size a
  k0_off1357_inb : ∀ k0_t4 : Fin k0_t4_loop.trips, ∀ a, (k0_off1357 k0_t4) a + S1x1x1x16.size a ≤ S2x4x4x1024.size a
  k0_off1358_inb : ∀ k0_t4 : Fin k0_t4_loop.trips, ∀ a, (k0_off1358 k0_t4) a + S1x1x1x16.size a ≤ S4x4x4x1024.size a
  k0_off1359_inb : ∀ k0_t4 : Fin k0_t4_loop.trips, ∀ a, (k0_off1359 k0_t4) a + S1x1x1x16.size a ≤ S2x4x4x1024.size a
  k0_off1360_inb : ∀ k0_t4 : Fin k0_t4_loop.trips, ∀ a, (k0_off1360 k0_t4) a + S1x1x1x16.size a ≤ S4x4x4x1024.size a
  k0_off1361_inb : ∀ k0_t4 : Fin k0_t4_loop.trips, ∀ a, (k0_off1361 k0_t4) a + S1x1x1x16.size a ≤ S2x4x4x1024.size a
  k0_off1362_inb : ∀ k0_t4 : Fin k0_t4_loop.trips, ∀ a, (k0_off1362 k0_t4) a + S1x1x1x16.size a ≤ S4x4x4x1024.size a
  k0_off1363_inb : ∀ k0_t4 : Fin k0_t4_loop.trips, ∀ a, (k0_off1363 k0_t4) a + S1x1x1x16.size a ≤ S2x4x4x1024.size a
  k0_off1364_inb : ∀ k0_t4 : Fin k0_t4_loop.trips, ∀ a, (k0_off1364 k0_t4) a + S1x1x1x16.size a ≤ S4x4x4x1024.size a
  k0_off1365_inb : ∀ k0_t4 : Fin k0_t4_loop.trips, ∀ a, (k0_off1365 k0_t4) a + S1x1x1x16.size a ≤ S2x4x4x1024.size a
  k0_off1366_inb : ∀ k0_t4 : Fin k0_t4_loop.trips, ∀ a, (k0_off1366 k0_t4) a + S1x1x1x16.size a ≤ S4x4x4x1024.size a
  k0_off1367_inb : ∀ k0_t4 : Fin k0_t4_loop.trips, ∀ a, (k0_off1367 k0_t4) a + S1x1x1x16.size a ≤ S2x4x4x1024.size a
  k0_off1368_inb : ∀ k0_t4 : Fin k0_t4_loop.trips, ∀ a, (k0_off1368 k0_t4) a + S1x1x1x16.size a ≤ S4x4x4x1024.size a
  k0_off1369_inb : ∀ k0_t4 : Fin k0_t4_loop.trips, ∀ a, (k0_off1369 k0_t4) a + S1x1x1x16.size a ≤ S2x4x4x1024.size a
  k0_off1370_inb : ∀ k0_t4 : Fin k0_t4_loop.trips, ∀ a, (k0_off1370 k0_t4) a + S1x1x1x16.size a ≤ S4x4x4x1024.size a
  k0_off1371_inb : ∀ k0_t4 : Fin k0_t4_loop.trips, ∀ a, (k0_off1371 k0_t4) a + S1x1x1x16.size a ≤ S2x4x4x1024.size a
  k0_off1372_inb : ∀ k0_t4 : Fin k0_t4_loop.trips, ∀ a, (k0_off1372 k0_t4) a + S1x1x1x16.size a ≤ S4x4x4x1024.size a
  k0_off1373_inb : ∀ k0_t4 : Fin k0_t4_loop.trips, ∀ a, (k0_off1373 k0_t4) a + S1x1x1x16.size a ≤ S2x4x4x1024.size a
  k0_off1374_inb : ∀ k0_t4 : Fin k0_t4_loop.trips, ∀ a, (k0_off1374 k0_t4) a + S1x1x1x16.size a ≤ S4x4x4x1024.size a
  k0_off1375_inb : ∀ k0_t4 : Fin k0_t4_loop.trips, ∀ a, (k0_off1375 k0_t4) a + S1x1x1x16.size a ≤ S2x4x4x1024.size a
  k0_off1376_inb : ∀ k0_t4 : Fin k0_t4_loop.trips, ∀ a, (k0_off1376 k0_t4) a + S1x1x1x16.size a ≤ S4x4x4x1024.size a
  k0_off1377_inb : ∀ k0_t4 : Fin k0_t4_loop.trips, ∀ a, (k0_off1377 k0_t4) a + S1x1x1x16.size a ≤ S2x4x4x1024.size a
  k0_off1378_inb : ∀ k0_t4 : Fin k0_t4_loop.trips, ∀ a, (k0_off1378 k0_t4) a + S1x1x1x16.size a ≤ S4x4x4x1024.size a
  k0_off1379_inb : ∀ k0_t4 : Fin k0_t4_loop.trips, ∀ a, (k0_off1379 k0_t4) a + S1x1x1x16.size a ≤ S2x4x4x1024.size a
  k0_off1380_inb : ∀ k0_t4 : Fin k0_t4_loop.trips, ∀ a, (k0_off1380 k0_t4) a + S1x1x1x16.size a ≤ S4x4x4x1024.size a
  k0_off1381_inb : ∀ k0_t4 : Fin k0_t4_loop.trips, ∀ a, (k0_off1381 k0_t4) a + S1x1x1x16.size a ≤ S2x4x4x1024.size a
  k0_off1382_inb : ∀ k0_t4 : Fin k0_t4_loop.trips, ∀ a, (k0_off1382 k0_t4) a + S1x1x1x16.size a ≤ S4x4x4x1024.size a
  k0_off1383_inb : ∀ k0_t4 : Fin k0_t4_loop.trips, ∀ a, (k0_off1383 k0_t4) a + S1x1x1x16.size a ≤ S2x4x4x1024.size a
  k0_off1384_inb : ∀ k0_t4 : Fin k0_t4_loop.trips, ∀ a, (k0_off1384 k0_t4) a + S1x1x1x16.size a ≤ S4x4x4x1024.size a
  k0_off1385_inb : ∀ k0_t4 : Fin k0_t4_loop.trips, ∀ a, (k0_off1385 k0_t4) a + S1x1x1x16.size a ≤ S2x4x4x1024.size a
  k0_off1386_inb : ∀ k0_t4 : Fin k0_t4_loop.trips, ∀ a, (k0_off1386 k0_t4) a + S1x1x1x16.size a ≤ S4x4x4x1024.size a
  k0_off1387_inb : ∀ k0_t4 : Fin k0_t4_loop.trips, ∀ a, (k0_off1387 k0_t4) a + S1x1x1x16.size a ≤ S2x4x4x1024.size a
  k0_off1388_inb : ∀ k0_t4 : Fin k0_t4_loop.trips, ∀ a, (k0_off1388 k0_t4) a + S1x1x1x16.size a ≤ S4x4x4x1024.size a
  k0_off1389_inb : ∀ k0_t4 : Fin k0_t4_loop.trips, ∀ a, (k0_off1389 k0_t4) a + S1x1x1x16.size a ≤ S2x4x4x1024.size a
  k0_off1390_inb : ∀ k0_t4 : Fin k0_t4_loop.trips, ∀ a, (k0_off1390 k0_t4) a + S1x1x1x16.size a ≤ S4x4x4x1024.size a
  k0_off1391_inb : ∀ k0_t4 : Fin k0_t4_loop.trips, ∀ a, (k0_off1391 k0_t4) a + S1x1x1x16.size a ≤ S2x4x4x1024.size a
  k0_off1392_inb : ∀ k0_t4 : Fin k0_t4_loop.trips, ∀ a, (k0_off1392 k0_t4) a + S1x1x1x16.size a ≤ S4x4x4x1024.size a
  k0_off1393_inb : ∀ k0_t4 : Fin k0_t4_loop.trips, ∀ a, (k0_off1393 k0_t4) a + S1x1x1x16.size a ≤ S2x4x4x1024.size a
  k0_off1394_inb : ∀ k0_t4 : Fin k0_t4_loop.trips, ∀ a, (k0_off1394 k0_t4) a + S1x1x1x16.size a ≤ S4x4x4x1024.size a
  k0_off1395_inb : ∀ k0_t4 : Fin k0_t4_loop.trips, ∀ a, (k0_off1395 k0_t4) a + S1x1x1x16.size a ≤ S2x4x4x1024.size a
  k0_off1396_inb : ∀ k0_t4 : Fin k0_t4_loop.trips, ∀ a, (k0_off1396 k0_t4) a + S1x1x1x16.size a ≤ S4x4x4x1024.size a
  k0_off1397_inb : ∀ k0_t4 : Fin k0_t4_loop.trips, ∀ a, (k0_off1397 k0_t4) a + S1x1x1x16.size a ≤ S2x4x4x1024.size a
  k0_off1398_inb : ∀ k0_t4 : Fin k0_t4_loop.trips, ∀ a, (k0_off1398 k0_t4) a + S1x1x1x16.size a ≤ S4x4x4x1024.size a
  k0_off1399_inb : ∀ k0_t4 : Fin k0_t4_loop.trips, ∀ a, (k0_off1399 k0_t4) a + S1x1x1x16.size a ≤ S2x4x4x1024.size a
  k0_off1400_inb : ∀ k0_t4 : Fin k0_t4_loop.trips, ∀ a, (k0_off1400 k0_t4) a + S1x1x1x16.size a ≤ S4x4x4x1024.size a
  k0_off1401_inb : ∀ k0_t4 : Fin k0_t4_loop.trips, ∀ a, (k0_off1401 k0_t4) a + S1x1x1x16.size a ≤ S2x4x4x1024.size a
  k0_off1402_inb : ∀ k0_t4 : Fin k0_t4_loop.trips, ∀ a, (k0_off1402 k0_t4) a + S1x1x1x16.size a ≤ S4x4x4x1024.size a
  k0_off1403_inb : ∀ k0_t4 : Fin k0_t4_loop.trips, ∀ a, (k0_off1403 k0_t4) a + S1x1x1x16.size a ≤ S2x4x4x1024.size a
  k0_off1404_inb : ∀ k0_t4 : Fin k0_t4_loop.trips, ∀ a, (k0_off1404 k0_t4) a + S1x1x1x16.size a ≤ S4x4x4x1024.size a
  k0_off1405_inb : ∀ k0_t4 : Fin k0_t4_loop.trips, ∀ a, (k0_off1405 k0_t4) a + S1x1x1x16.size a ≤ S2x4x4x1024.size a
  k0_off1406_inb : ∀ k0_t4 : Fin k0_t4_loop.trips, ∀ a, (k0_off1406 k0_t4) a + S1x1x1x16.size a ≤ S4x4x4x1024.size a
  k0_off1407_inb : ∀ k0_t4 : Fin k0_t4_loop.trips, ∀ a, (k0_off1407 k0_t4) a + S1x1x1x16.size a ≤ S2x4x4x1024.size a
  k0_off1408_inb : ∀ k0_t4 : Fin k0_t4_loop.trips, ∀ a, (k0_off1408 k0_t4) a + S1x1x1x16.size a ≤ S4x4x4x1024.size a
  k0_off1409_inb : ∀ k0_t4 : Fin k0_t4_loop.trips, ∀ a, (k0_off1409 k0_t4) a + S1x1x1x16.size a ≤ S2x4x4x1024.size a
  k0_off1410_inb : ∀ k0_t4 : Fin k0_t4_loop.trips, ∀ a, (k0_off1410 k0_t4) a + S1x1x1x16.size a ≤ S4x4x4x1024.size a
  k0_off1411_inb : ∀ k0_t4 : Fin k0_t4_loop.trips, ∀ a, (k0_off1411 k0_t4) a + S1x1x1x16.size a ≤ S2x4x4x1024.size a
  k0_off1412_inb : ∀ k0_t4 : Fin k0_t4_loop.trips, ∀ a, (k0_off1412 k0_t4) a + S1x1x1x16.size a ≤ S4x4x4x1024.size a
  k0_off1413_inb : ∀ k0_t4 : Fin k0_t4_loop.trips, ∀ a, (k0_off1413 k0_t4) a + S1x1x1x16.size a ≤ S2x4x4x1024.size a
  k0_off1414_inb : ∀ k0_t4 : Fin k0_t4_loop.trips, ∀ a, (k0_off1414 k0_t4) a + S1x1x1x16.size a ≤ S4x4x4x1024.size a
  k0_off1415_inb : ∀ k0_t4 : Fin k0_t4_loop.trips, ∀ a, (k0_off1415 k0_t4) a + S1x1x1x16.size a ≤ S2x4x4x1024.size a
  k0_off1416_inb : ∀ k0_t4 : Fin k0_t4_loop.trips, ∀ a, (k0_off1416 k0_t4) a + S1x1x1x16.size a ≤ S4x4x4x1024.size a
  k0_off1417_inb : ∀ k0_t4 : Fin k0_t4_loop.trips, ∀ a, (k0_off1417 k0_t4) a + S1x1x1x16.size a ≤ S2x4x4x1024.size a
  k0_off1418_inb : ∀ k0_t4 : Fin k0_t4_loop.trips, ∀ a, (k0_off1418 k0_t4) a + S1x1x1x16.size a ≤ S4x4x4x1024.size a
  k0_off1419_inb : ∀ k0_t4 : Fin k0_t4_loop.trips, ∀ a, (k0_off1419 k0_t4) a + S1x1x1x16.size a ≤ S2x4x4x1024.size a
  k0_off1420_inb : ∀ k0_t4 : Fin k0_t4_loop.trips, ∀ a, (k0_off1420 k0_t4) a + S1x1x1x16.size a ≤ S4x4x4x1024.size a
  k0_off1421_inb : ∀ k0_t4 : Fin k0_t4_loop.trips, ∀ a, (k0_off1421 k0_t4) a + S1x1x1x16.size a ≤ S2x4x4x1024.size a
  k0_off1422_inb : ∀ k0_t4 : Fin k0_t4_loop.trips, ∀ a, (k0_off1422 k0_t4) a + S1x1x1x16.size a ≤ S4x4x4x1024.size a
  k0_off1423_inb : ∀ k0_t4 : Fin k0_t4_loop.trips, ∀ a, (k0_off1423 k0_t4) a + S1x1x1x16.size a ≤ S2x4x4x1024.size a
  k0_off1424_inb : ∀ k0_t4 : Fin k0_t4_loop.trips, ∀ a, (k0_off1424 k0_t4) a + S1x1x1x16.size a ≤ S4x4x4x1024.size a
  k0_off1425_inb : ∀ k0_t4 : Fin k0_t4_loop.trips, ∀ a, (k0_off1425 k0_t4) a + S1x1x1x16.size a ≤ S2x4x4x1024.size a
  k0_off1426_inb : ∀ k0_t4 : Fin k0_t4_loop.trips, ∀ a, (k0_off1426 k0_t4) a + S1x1x1x16.size a ≤ S4x4x4x1024.size a
  k0_off1427_inb : ∀ k0_t4 : Fin k0_t4_loop.trips, ∀ a, (k0_off1427 k0_t4) a + S1x1x1x16.size a ≤ S2x4x4x1024.size a
  k0_off1428_inb : ∀ k0_t4 : Fin k0_t4_loop.trips, ∀ a, (k0_off1428 k0_t4) a + S1x1x1x16.size a ≤ S4x4x4x1024.size a
  k0_off1429_inb : ∀ k0_t4 : Fin k0_t4_loop.trips, ∀ a, (k0_off1429 k0_t4) a + S1x1x1x16.size a ≤ S2x4x4x1024.size a
  k0_off1430_inb : ∀ k0_t4 : Fin k0_t4_loop.trips, ∀ a, (k0_off1430 k0_t4) a + S1x1x1x16.size a ≤ S4x4x4x1024.size a
  k0_off1431_inb : ∀ k0_t4 : Fin k0_t4_loop.trips, ∀ a, (k0_off1431 k0_t4) a + S1x1x1x16.size a ≤ S2x4x4x1024.size a
  k0_off1432_inb : ∀ k0_t4 : Fin k0_t4_loop.trips, ∀ a, (k0_off1432 k0_t4) a + S1x1x1x16.size a ≤ S4x4x4x1024.size a
  k0_off1433_inb : ∀ k0_t4 : Fin k0_t4_loop.trips, ∀ a, (k0_off1433 k0_t4) a + S1x1x1x16.size a ≤ S2x4x4x1024.size a
  k0_off1434_inb : ∀ k0_t4 : Fin k0_t4_loop.trips, ∀ a, (k0_off1434 k0_t4) a + S1x1x1x16.size a ≤ S4x4x4x1024.size a
  k0_off1435_inb : ∀ k0_t4 : Fin k0_t4_loop.trips, ∀ a, (k0_off1435 k0_t4) a + S1x1x1x16.size a ≤ S2x4x4x1024.size a
  k0_off1436_inb : ∀ k0_t4 : Fin k0_t4_loop.trips, ∀ a, (k0_off1436 k0_t4) a + S1x1x1x16.size a ≤ S4x4x4x1024.size a
  k0_off1437_inb : ∀ k0_t4 : Fin k0_t4_loop.trips, ∀ a, (k0_off1437 k0_t4) a + S1x1x1x16.size a ≤ S2x4x4x1024.size a
  k0_off1438_inb : ∀ k0_t4 : Fin k0_t4_loop.trips, ∀ a, (k0_off1438 k0_t4) a + S1x1x1x16.size a ≤ S4x4x4x1024.size a
  k0_off1439_inb : ∀ k0_t4 : Fin k0_t4_loop.trips, ∀ a, (k0_off1439 k0_t4) a + S1x1x1x16.size a ≤ S2x4x4x1024.size a
  k0_off1440_inb : ∀ k0_t4 : Fin k0_t4_loop.trips, ∀ a, (k0_off1440 k0_t4) a + S1x1x1x16.size a ≤ S4x4x4x1024.size a
  k0_off1441_inb : ∀ k0_t4 : Fin k0_t4_loop.trips, ∀ a, (k0_off1441 k0_t4) a + S1x1x1x16.size a ≤ S2x4x4x1024.size a
  k0_off1442_inb : ∀ k0_t4 : Fin k0_t4_loop.trips, ∀ a, (k0_off1442 k0_t4) a + S1x1x1x16.size a ≤ S4x4x4x1024.size a
  k0_off1443_inb : ∀ k0_t4 : Fin k0_t4_loop.trips, ∀ a, (k0_off1443 k0_t4) a + S1x1x1x16.size a ≤ S2x4x4x1024.size a
  k0_off1444_inb : ∀ k0_t4 : Fin k0_t4_loop.trips, ∀ a, (k0_off1444 k0_t4) a + S1x1x1x16.size a ≤ S4x4x4x1024.size a
  k0_off1445_inb : ∀ k0_t4 : Fin k0_t4_loop.trips, ∀ a, (k0_off1445 k0_t4) a + S1x1x1x16.size a ≤ S2x4x4x1024.size a
  k0_off1446_inb : ∀ k0_t4 : Fin k0_t4_loop.trips, ∀ a, (k0_off1446 k0_t4) a + S1x1x1x16.size a ≤ S4x4x4x1024.size a
  k0_off1447_inb : ∀ k0_t4 : Fin k0_t4_loop.trips, ∀ a, (k0_off1447 k0_t4) a + S1x1x1x16.size a ≤ S2x4x4x1024.size a
  k0_off1448_inb : ∀ k0_t4 : Fin k0_t4_loop.trips, ∀ a, (k0_off1448 k0_t4) a + S1x1x1x16.size a ≤ S4x4x4x1024.size a
  k0_off1449_inb : ∀ k0_t4 : Fin k0_t4_loop.trips, ∀ a, (k0_off1449 k0_t4) a + S1x1x1x16.size a ≤ S2x4x4x1024.size a
  k0_off1450_inb : ∀ k0_t4 : Fin k0_t4_loop.trips, ∀ a, (k0_off1450 k0_t4) a + S1x1x1x16.size a ≤ S4x4x4x1024.size a
  k0_off1451_inb : ∀ k0_t4 : Fin k0_t4_loop.trips, ∀ a, (k0_off1451 k0_t4) a + S1x1x1x16.size a ≤ S2x4x4x1024.size a
  k0_off1452_inb : ∀ k0_t4 : Fin k0_t4_loop.trips, ∀ a, (k0_off1452 k0_t4) a + S1x1x1x16.size a ≤ S4x4x4x1024.size a
  k0_off1453_inb : ∀ k0_t4 : Fin k0_t4_loop.trips, ∀ a, (k0_off1453 k0_t4) a + S1x1x1x16.size a ≤ S2x4x4x1024.size a
  k0_off1454_inb : ∀ k0_t4 : Fin k0_t4_loop.trips, ∀ a, (k0_off1454 k0_t4) a + S1x1x1x16.size a ≤ S4x4x4x1024.size a
  k0_off1455_inb : ∀ k0_t4 : Fin k0_t4_loop.trips, ∀ a, (k0_off1455 k0_t4) a + S1x1x1x16.size a ≤ S2x4x4x1024.size a
  k0_off1456_inb : ∀ k0_t4 : Fin k0_t4_loop.trips, ∀ a, (k0_off1456 k0_t4) a + S1x1x1x16.size a ≤ S4x4x4x1024.size a
  k0_off1457_inb : ∀ k0_t4 : Fin k0_t4_loop.trips, ∀ a, (k0_off1457 k0_t4) a + S1x1x1x16.size a ≤ S2x4x4x1024.size a
  k0_off1458_inb : ∀ k0_t4 : Fin k0_t4_loop.trips, ∀ a, (k0_off1458 k0_t4) a + S1x1x1x16.size a ≤ S4x4x4x1024.size a
  k0_off1459_inb : ∀ k0_t4 : Fin k0_t4_loop.trips, ∀ a, (k0_off1459 k0_t4) a + S1x1x1x16.size a ≤ S2x4x4x1024.size a
  k0_off1460_inb : ∀ k0_t4 : Fin k0_t4_loop.trips, ∀ a, (k0_off1460 k0_t4) a + S1x1x1x16.size a ≤ S4x4x4x1024.size a
  k0_off1461_inb : ∀ k0_t4 : Fin k0_t4_loop.trips, ∀ a, (k0_off1461 k0_t4) a + S1x1x1x16.size a ≤ S2x4x4x1024.size a
  k0_off1462_inb : ∀ k0_t4 : Fin k0_t4_loop.trips, ∀ a, (k0_off1462 k0_t4) a + S1x1x1x16.size a ≤ S4x4x4x1024.size a
  k0_off1463_inb : ∀ k0_t4 : Fin k0_t4_loop.trips, ∀ a, (k0_off1463 k0_t4) a + S1x1x1x16.size a ≤ S2x4x4x1024.size a
  k0_off1464_inb : ∀ k0_t4 : Fin k0_t4_loop.trips, ∀ a, (k0_off1464 k0_t4) a + S1x1x1x16.size a ≤ S4x4x4x1024.size a
  k0_off1465_inb : ∀ k0_t4 : Fin k0_t4_loop.trips, ∀ a, (k0_off1465 k0_t4) a + S1x1x1x16.size a ≤ S2x4x4x1024.size a
  k0_off1466_inb : ∀ k0_t4 : Fin k0_t4_loop.trips, ∀ a, (k0_off1466 k0_t4) a + S1x1x1x16.size a ≤ S4x4x4x1024.size a
  k0_off1467_inb : ∀ k0_t4 : Fin k0_t4_loop.trips, ∀ a, (k0_off1467 k0_t4) a + S1x1x1x16.size a ≤ S2x4x4x1024.size a
  k0_off1468_inb : ∀ k0_t4 : Fin k0_t4_loop.trips, ∀ a, (k0_off1468 k0_t4) a + S1x1x1x16.size a ≤ S4x4x4x1024.size a
  k0_off1469_inb : ∀ k0_t4 : Fin k0_t4_loop.trips, ∀ a, (k0_off1469 k0_t4) a + S1x1x1x16.size a ≤ S2x4x4x1024.size a
  k0_off1470_inb : ∀ k0_t4 : Fin k0_t4_loop.trips, ∀ a, (k0_off1470 k0_t4) a + S1x1x1x16.size a ≤ S4x4x4x1024.size a
  k0_off1471_inb : ∀ k0_t4 : Fin k0_t4_loop.trips, ∀ a, (k0_off1471 k0_t4) a + S1x1x1x16.size a ≤ S2x4x4x1024.size a
  k0_off1472_inb : ∀ k0_t4 : Fin k0_t4_loop.trips, ∀ a, (k0_off1472 k0_t4) a + S1x1x1x16.size a ≤ S4x4x4x1024.size a
  k0_off1473_inb : ∀ k0_t4 : Fin k0_t4_loop.trips, ∀ a, (k0_off1473 k0_t4) a + S1x1x1x16.size a ≤ S2x4x4x1024.size a
  k0_off1474_inb : ∀ k0_t4 : Fin k0_t4_loop.trips, ∀ a, (k0_off1474 k0_t4) a + S1x1x1x16.size a ≤ S4x4x4x1024.size a
  k0_off1475_inb : ∀ k0_t4 : Fin k0_t4_loop.trips, ∀ a, (k0_off1475 k0_t4) a + S1x1x1x16.size a ≤ S2x4x4x1024.size a
  k0_off1476_inb : ∀ k0_t4 : Fin k0_t4_loop.trips, ∀ a, (k0_off1476 k0_t4) a + S1x1x1x16.size a ≤ S4x4x4x1024.size a
  k0_off1477_inb : ∀ k0_t4 : Fin k0_t4_loop.trips, ∀ a, (k0_off1477 k0_t4) a + S1x1x1x16.size a ≤ S2x4x4x1024.size a
  k0_off1478_inb : ∀ k0_t4 : Fin k0_t4_loop.trips, ∀ a, (k0_off1478 k0_t4) a + S1x1x16.size a ≤ S4x4x1024.size a
  k0_off1479_inb : ∀ k0_t4 : Fin k0_t4_loop.trips, ∀ a, (k0_off1479 k0_t4) a + S1x1x16.size a ≤ S4x4x1024.size a
  k0_off1480_inb : ∀ k0_t4 : Fin k0_t4_loop.trips, ∀ a, (k0_off1480 k0_t4) a + S1x1x16.size a ≤ S4x4x1024.size a
  k0_off1481_inb : ∀ k0_t4 : Fin k0_t4_loop.trips, ∀ a, (k0_off1481 k0_t4) a + S1x1x16.size a ≤ S4x4x1024.size a
  k0_off1482_inb : ∀ k0_t4 : Fin k0_t4_loop.trips, ∀ a, (k0_off1482 k0_t4) a + S1x1x16.size a ≤ S4x4x1024.size a
  k0_off1483_inb : ∀ k0_t4 : Fin k0_t4_loop.trips, ∀ a, (k0_off1483 k0_t4) a + S1x1x16.size a ≤ S4x4x1024.size a
  k0_off1484_inb : ∀ k0_t4 : Fin k0_t4_loop.trips, ∀ a, (k0_off1484 k0_t4) a + S1x1x16.size a ≤ S4x4x1024.size a
  k0_off1485_inb : ∀ k0_t4 : Fin k0_t4_loop.trips, ∀ a, (k0_off1485 k0_t4) a + S1x1x16.size a ≤ S4x4x1024.size a
  k0_off1486_inb : ∀ k0_t4 : Fin k0_t4_loop.trips, ∀ a, (k0_off1486 k0_t4) a + S1x1x16.size a ≤ S4x4x1024.size a
  k0_off1487_inb : ∀ k0_t4 : Fin k0_t4_loop.trips, ∀ a, (k0_off1487 k0_t4) a + S1x1x16.size a ≤ S4x4x1024.size a
  k0_off1488_inb : ∀ k0_t4 : Fin k0_t4_loop.trips, ∀ a, (k0_off1488 k0_t4) a + S1x1x16.size a ≤ S4x4x1024.size a
  k0_off1489_inb : ∀ k0_t4 : Fin k0_t4_loop.trips, ∀ a, (k0_off1489 k0_t4) a + S1x1x16.size a ≤ S4x4x1024.size a
  k0_off1490_inb : ∀ k0_t4 : Fin k0_t4_loop.trips, ∀ a, (k0_off1490 k0_t4) a + S1x1x16.size a ≤ S4x4x1024.size a
  k0_off1491_inb : ∀ k0_t4 : Fin k0_t4_loop.trips, ∀ a, (k0_off1491 k0_t4) a + S1x1x16.size a ≤ S4x4x1024.size a
  k0_off1492_inb : ∀ k0_t4 : Fin k0_t4_loop.trips, ∀ a, (k0_off1492 k0_t4) a + S1x1x16.size a ≤ S4x4x1024.size a
  k0_off1493_inb : ∀ k0_t4 : Fin k0_t4_loop.trips, ∀ a, (k0_off1493 k0_t4) a + S1x1x16.size a ≤ S4x4x1024.size a
  k0_off1494_inb : ∀ k0_t4 : Fin k0_t4_loop.trips, ∀ a, (k0_off1494 k0_t4) a + S1x1x16.size a ≤ S4x4x1024.size a
  k0_off1495_inb : ∀ k0_t4 : Fin k0_t4_loop.trips, ∀ a, (k0_off1495 k0_t4) a + S1x1x16.size a ≤ S4x4x1024.size a
  k0_off1496_inb : ∀ k0_t4 : Fin k0_t4_loop.trips, ∀ a, (k0_off1496 k0_t4) a + S1x1x16.size a ≤ S4x4x1024.size a
  k0_off1497_inb : ∀ k0_t4 : Fin k0_t4_loop.trips, ∀ a, (k0_off1497 k0_t4) a + S1x1x16.size a ≤ S4x4x1024.size a
  k0_off1498_inb : ∀ k0_t4 : Fin k0_t4_loop.trips, ∀ a, (k0_off1498 k0_t4) a + S1x1x16.size a ≤ S4x4x1024.size a
  k0_off1499_inb : ∀ k0_t4 : Fin k0_t4_loop.trips, ∀ a, (k0_off1499 k0_t4) a + S1x1x16.size a ≤ S4x4x1024.size a
  k0_off1500_inb : ∀ k0_t4 : Fin k0_t4_loop.trips, ∀ a, (k0_off1500 k0_t4) a + S1x1x16.size a ≤ S4x4x1024.size a
  k0_off1501_inb : ∀ k0_t4 : Fin k0_t4_loop.trips, ∀ a, (k0_off1501 k0_t4) a + S1x1x16.size a ≤ S4x4x1024.size a
  k0_off1502_inb : ∀ k0_t4 : Fin k0_t4_loop.trips, ∀ a, (k0_off1502 k0_t4) a + S1x1x16.size a ≤ S4x4x1024.size a
  k0_off1503_inb : ∀ k0_t4 : Fin k0_t4_loop.trips, ∀ a, (k0_off1503 k0_t4) a + S1x1x16.size a ≤ S4x4x1024.size a
  k0_off1504_inb : ∀ k0_t4 : Fin k0_t4_loop.trips, ∀ a, (k0_off1504 k0_t4) a + S1x1x16.size a ≤ S4x4x1024.size a
  k0_off1505_inb : ∀ k0_t4 : Fin k0_t4_loop.trips, ∀ a, (k0_off1505 k0_t4) a + S1x1x16.size a ≤ S4x4x1024.size a
  k0_off1506_inb : ∀ k0_t4 : Fin k0_t4_loop.trips, ∀ a, (k0_off1506 k0_t4) a + S1x1x16.size a ≤ S4x4x1024.size a
  k0_off1507_inb : ∀ k0_t4 : Fin k0_t4_loop.trips, ∀ a, (k0_off1507 k0_t4) a + S1x1x16.size a ≤ S4x4x1024.size a
  k0_off1508_inb : ∀ k0_t4 : Fin k0_t4_loop.trips, ∀ a, (k0_off1508 k0_t4) a + S1x1x16.size a ≤ S4x4x1024.size a
  k0_off1509_inb : ∀ k0_t4 : Fin k0_t4_loop.trips, ∀ a, (k0_off1509 k0_t4) a + S1x1x16.size a ≤ S4x4x1024.size a
  k0_off1510_inb : ∀ k0_t4 : Fin k0_t4_loop.trips, ∀ a, (k0_off1510 k0_t4) a + S1x1x1x16.size a ≤ S4x4x4x1024.size a
  k0_off1511_inb : ∀ k0_t4 : Fin k0_t4_loop.trips, ∀ a, (k0_off1511 k0_t4) a + S1x1x1x16.size a ≤ S2x4x4x1024.size a
  k0_off1512_inb : ∀ k0_t4 : Fin k0_t4_loop.trips, ∀ a, (k0_off1512 k0_t4) a + S1x1x1x16.size a ≤ S4x4x4x1024.size a
  k0_off1513_inb : ∀ k0_t4 : Fin k0_t4_loop.trips, ∀ a, (k0_off1513 k0_t4) a + S1x1x1x16.size a ≤ S2x4x4x1024.size a
  k0_off1514_inb : ∀ k0_t4 : Fin k0_t4_loop.trips, ∀ a, (k0_off1514 k0_t4) a + S1x1x1x16.size a ≤ S4x4x4x1024.size a
  k0_off1515_inb : ∀ k0_t4 : Fin k0_t4_loop.trips, ∀ a, (k0_off1515 k0_t4) a + S1x1x1x16.size a ≤ S2x4x4x1024.size a
  k0_off1516_inb : ∀ k0_t4 : Fin k0_t4_loop.trips, ∀ a, (k0_off1516 k0_t4) a + S1x1x1x16.size a ≤ S4x4x4x1024.size a
  k0_off1517_inb : ∀ k0_t4 : Fin k0_t4_loop.trips, ∀ a, (k0_off1517 k0_t4) a + S1x1x1x16.size a ≤ S2x4x4x1024.size a
  k0_off1518_inb : ∀ k0_t4 : Fin k0_t4_loop.trips, ∀ a, (k0_off1518 k0_t4) a + S1x1x1x16.size a ≤ S4x4x4x1024.size a
  k0_off1519_inb : ∀ k0_t4 : Fin k0_t4_loop.trips, ∀ a, (k0_off1519 k0_t4) a + S1x1x1x16.size a ≤ S2x4x4x1024.size a
  k0_off1520_inb : ∀ k0_t4 : Fin k0_t4_loop.trips, ∀ a, (k0_off1520 k0_t4) a + S1x1x1x16.size a ≤ S4x4x4x1024.size a
  k0_off1521_inb : ∀ k0_t4 : Fin k0_t4_loop.trips, ∀ a, (k0_off1521 k0_t4) a + S1x1x1x16.size a ≤ S2x4x4x1024.size a
  k0_off1522_inb : ∀ k0_t4 : Fin k0_t4_loop.trips, ∀ a, (k0_off1522 k0_t4) a + S1x1x1x16.size a ≤ S4x4x4x1024.size a
  k0_off1523_inb : ∀ k0_t4 : Fin k0_t4_loop.trips, ∀ a, (k0_off1523 k0_t4) a + S1x1x1x16.size a ≤ S2x4x4x1024.size a
  k0_off1524_inb : ∀ k0_t4 : Fin k0_t4_loop.trips, ∀ a, (k0_off1524 k0_t4) a + S1x1x1x16.size a ≤ S4x4x4x1024.size a
  k0_off1525_inb : ∀ k0_t4 : Fin k0_t4_loop.trips, ∀ a, (k0_off1525 k0_t4) a + S1x1x1x16.size a ≤ S2x4x4x1024.size a
  k0_off1526_inb : ∀ k0_t4 : Fin k0_t4_loop.trips, ∀ a, (k0_off1526 k0_t4) a + S1x1x1x16.size a ≤ S4x4x4x1024.size a
  k0_off1527_inb : ∀ k0_t4 : Fin k0_t4_loop.trips, ∀ a, (k0_off1527 k0_t4) a + S1x1x1x16.size a ≤ S2x4x4x1024.size a
  k0_off1528_inb : ∀ k0_t4 : Fin k0_t4_loop.trips, ∀ a, (k0_off1528 k0_t4) a + S1x1x1x16.size a ≤ S4x4x4x1024.size a
  k0_off1529_inb : ∀ k0_t4 : Fin k0_t4_loop.trips, ∀ a, (k0_off1529 k0_t4) a + S1x1x1x16.size a ≤ S2x4x4x1024.size a
  k0_off1530_inb : ∀ k0_t4 : Fin k0_t4_loop.trips, ∀ a, (k0_off1530 k0_t4) a + S1x1x1x16.size a ≤ S4x4x4x1024.size a
  k0_off1531_inb : ∀ k0_t4 : Fin k0_t4_loop.trips, ∀ a, (k0_off1531 k0_t4) a + S1x1x1x16.size a ≤ S2x4x4x1024.size a
  k0_off1532_inb : ∀ k0_t4 : Fin k0_t4_loop.trips, ∀ a, (k0_off1532 k0_t4) a + S1x1x1x16.size a ≤ S4x4x4x1024.size a
  k0_off1533_inb : ∀ k0_t4 : Fin k0_t4_loop.trips, ∀ a, (k0_off1533 k0_t4) a + S1x1x1x16.size a ≤ S2x4x4x1024.size a
  k0_off1534_inb : ∀ k0_t4 : Fin k0_t4_loop.trips, ∀ a, (k0_off1534 k0_t4) a + S1x1x1x16.size a ≤ S4x4x4x1024.size a
  k0_off1535_inb : ∀ k0_t4 : Fin k0_t4_loop.trips, ∀ a, (k0_off1535 k0_t4) a + S1x1x1x16.size a ≤ S2x4x4x1024.size a
  k0_off1536_inb : ∀ k0_t4 : Fin k0_t4_loop.trips, ∀ a, (k0_off1536 k0_t4) a + S1x1x1x16.size a ≤ S4x4x4x1024.size a
  k0_off1537_inb : ∀ k0_t4 : Fin k0_t4_loop.trips, ∀ a, (k0_off1537 k0_t4) a + S1x1x1x16.size a ≤ S2x4x4x1024.size a
  k0_off1538_inb : ∀ k0_t4 : Fin k0_t4_loop.trips, ∀ a, (k0_off1538 k0_t4) a + S1x1x1x16.size a ≤ S4x4x4x1024.size a
  k0_off1539_inb : ∀ k0_t4 : Fin k0_t4_loop.trips, ∀ a, (k0_off1539 k0_t4) a + S1x1x1x16.size a ≤ S2x4x4x1024.size a
  k0_off1540_inb : ∀ k0_t4 : Fin k0_t4_loop.trips, ∀ a, (k0_off1540 k0_t4) a + S1x1x1x16.size a ≤ S4x4x4x1024.size a
  k0_off1541_inb : ∀ k0_t4 : Fin k0_t4_loop.trips, ∀ a, (k0_off1541 k0_t4) a + S1x1x1x16.size a ≤ S2x4x4x1024.size a
  k0_off1542_inb : ∀ k0_t4 : Fin k0_t4_loop.trips, ∀ a, (k0_off1542 k0_t4) a + S1x1x1x16.size a ≤ S4x4x4x1024.size a
  k0_off1543_inb : ∀ k0_t4 : Fin k0_t4_loop.trips, ∀ a, (k0_off1543 k0_t4) a + S1x1x1x16.size a ≤ S2x4x4x1024.size a
  k0_off1544_inb : ∀ k0_t4 : Fin k0_t4_loop.trips, ∀ a, (k0_off1544 k0_t4) a + S1x1x1x16.size a ≤ S4x4x4x1024.size a
  k0_off1545_inb : ∀ k0_t4 : Fin k0_t4_loop.trips, ∀ a, (k0_off1545 k0_t4) a + S1x1x1x16.size a ≤ S2x4x4x1024.size a
  k0_off1546_inb : ∀ k0_t4 : Fin k0_t4_loop.trips, ∀ a, (k0_off1546 k0_t4) a + S1x1x1x16.size a ≤ S4x4x4x1024.size a
  k0_off1547_inb : ∀ k0_t4 : Fin k0_t4_loop.trips, ∀ a, (k0_off1547 k0_t4) a + S1x1x1x16.size a ≤ S2x4x4x1024.size a
  k0_off1548_inb : ∀ k0_t4 : Fin k0_t4_loop.trips, ∀ a, (k0_off1548 k0_t4) a + S1x1x1x16.size a ≤ S4x4x4x1024.size a
  k0_off1549_inb : ∀ k0_t4 : Fin k0_t4_loop.trips, ∀ a, (k0_off1549 k0_t4) a + S1x1x1x16.size a ≤ S2x4x4x1024.size a
  k0_off1550_inb : ∀ k0_t4 : Fin k0_t4_loop.trips, ∀ a, (k0_off1550 k0_t4) a + S1x1x1x16.size a ≤ S4x4x4x1024.size a
  k0_off1551_inb : ∀ k0_t4 : Fin k0_t4_loop.trips, ∀ a, (k0_off1551 k0_t4) a + S1x1x1x16.size a ≤ S2x4x4x1024.size a
  k0_off1552_inb : ∀ k0_t4 : Fin k0_t4_loop.trips, ∀ a, (k0_off1552 k0_t4) a + S1x1x1x16.size a ≤ S4x4x4x1024.size a
  k0_off1553_inb : ∀ k0_t4 : Fin k0_t4_loop.trips, ∀ a, (k0_off1553 k0_t4) a + S1x1x1x16.size a ≤ S2x4x4x1024.size a
  k0_off1554_inb : ∀ k0_t4 : Fin k0_t4_loop.trips, ∀ a, (k0_off1554 k0_t4) a + S1x1x1x16.size a ≤ S4x4x4x1024.size a
  k0_off1555_inb : ∀ k0_t4 : Fin k0_t4_loop.trips, ∀ a, (k0_off1555 k0_t4) a + S1x1x1x16.size a ≤ S2x4x4x1024.size a
  k0_off1556_inb : ∀ k0_t4 : Fin k0_t4_loop.trips, ∀ a, (k0_off1556 k0_t4) a + S1x1x1x16.size a ≤ S4x4x4x1024.size a
  k0_off1557_inb : ∀ k0_t4 : Fin k0_t4_loop.trips, ∀ a, (k0_off1557 k0_t4) a + S1x1x1x16.size a ≤ S2x4x4x1024.size a
  k0_off1558_inb : ∀ k0_t4 : Fin k0_t4_loop.trips, ∀ a, (k0_off1558 k0_t4) a + S1x1x1x16.size a ≤ S4x4x4x1024.size a
  k0_off1559_inb : ∀ k0_t4 : Fin k0_t4_loop.trips, ∀ a, (k0_off1559 k0_t4) a + S1x1x1x16.size a ≤ S2x4x4x1024.size a
  k0_off1560_inb : ∀ k0_t4 : Fin k0_t4_loop.trips, ∀ a, (k0_off1560 k0_t4) a + S1x1x1x16.size a ≤ S4x4x4x1024.size a
  k0_off1561_inb : ∀ k0_t4 : Fin k0_t4_loop.trips, ∀ a, (k0_off1561 k0_t4) a + S1x1x1x16.size a ≤ S2x4x4x1024.size a
  k0_off1562_inb : ∀ k0_t4 : Fin k0_t4_loop.trips, ∀ a, (k0_off1562 k0_t4) a + S1x1x1x16.size a ≤ S4x4x4x1024.size a
  k0_off1563_inb : ∀ k0_t4 : Fin k0_t4_loop.trips, ∀ a, (k0_off1563 k0_t4) a + S1x1x1x16.size a ≤ S2x4x4x1024.size a
  k0_off1564_inb : ∀ k0_t4 : Fin k0_t4_loop.trips, ∀ a, (k0_off1564 k0_t4) a + S1x1x1x16.size a ≤ S4x4x4x1024.size a
  k0_off1565_inb : ∀ k0_t4 : Fin k0_t4_loop.trips, ∀ a, (k0_off1565 k0_t4) a + S1x1x1x16.size a ≤ S2x4x4x1024.size a
  k0_off1566_inb : ∀ k0_t4 : Fin k0_t4_loop.trips, ∀ a, (k0_off1566 k0_t4) a + S1x1x1x16.size a ≤ S4x4x4x1024.size a
  k0_off1567_inb : ∀ k0_t4 : Fin k0_t4_loop.trips, ∀ a, (k0_off1567 k0_t4) a + S1x1x1x16.size a ≤ S2x4x4x1024.size a
  k0_off1568_inb : ∀ k0_t4 : Fin k0_t4_loop.trips, ∀ a, (k0_off1568 k0_t4) a + S1x1x1x16.size a ≤ S4x4x4x1024.size a
  k0_off1569_inb : ∀ k0_t4 : Fin k0_t4_loop.trips, ∀ a, (k0_off1569 k0_t4) a + S1x1x1x16.size a ≤ S2x4x4x1024.size a
  k0_off1570_inb : ∀ k0_t4 : Fin k0_t4_loop.trips, ∀ a, (k0_off1570 k0_t4) a + S1x1x1x16.size a ≤ S4x4x4x1024.size a
  k0_off1571_inb : ∀ k0_t4 : Fin k0_t4_loop.trips, ∀ a, (k0_off1571 k0_t4) a + S1x1x1x16.size a ≤ S2x4x4x1024.size a
  k0_off1572_inb : ∀ k0_t4 : Fin k0_t4_loop.trips, ∀ a, (k0_off1572 k0_t4) a + S1x1x1x16.size a ≤ S4x4x4x1024.size a
  k0_off1573_inb : ∀ k0_t4 : Fin k0_t4_loop.trips, ∀ a, (k0_off1573 k0_t4) a + S1x1x1x16.size a ≤ S2x4x4x1024.size a
  k0_off1574_inb : ∀ k0_t4 : Fin k0_t4_loop.trips, ∀ a, (k0_off1574 k0_t4) a + S1x1x1x16.size a ≤ S4x4x4x1024.size a
  k0_off1575_inb : ∀ k0_t4 : Fin k0_t4_loop.trips, ∀ a, (k0_off1575 k0_t4) a + S1x1x1x16.size a ≤ S2x4x4x1024.size a
  k0_off1576_inb : ∀ k0_t4 : Fin k0_t4_loop.trips, ∀ a, (k0_off1576 k0_t4) a + S1x1x1x16.size a ≤ S4x4x4x1024.size a
  k0_off1577_inb : ∀ k0_t4 : Fin k0_t4_loop.trips, ∀ a, (k0_off1577 k0_t4) a + S1x1x1x16.size a ≤ S2x4x4x1024.size a
  k0_off1578_inb : ∀ k0_t4 : Fin k0_t4_loop.trips, ∀ a, (k0_off1578 k0_t4) a + S1x1x1x16.size a ≤ S4x4x4x1024.size a
  k0_off1579_inb : ∀ k0_t4 : Fin k0_t4_loop.trips, ∀ a, (k0_off1579 k0_t4) a + S1x1x1x16.size a ≤ S2x4x4x1024.size a
  k0_off1580_inb : ∀ k0_t4 : Fin k0_t4_loop.trips, ∀ a, (k0_off1580 k0_t4) a + S1x1x1x16.size a ≤ S4x4x4x1024.size a
  k0_off1581_inb : ∀ k0_t4 : Fin k0_t4_loop.trips, ∀ a, (k0_off1581 k0_t4) a + S1x1x1x16.size a ≤ S2x4x4x1024.size a
  k0_off1582_inb : ∀ k0_t4 : Fin k0_t4_loop.trips, ∀ a, (k0_off1582 k0_t4) a + S1x1x1x16.size a ≤ S4x4x4x1024.size a
  k0_off1583_inb : ∀ k0_t4 : Fin k0_t4_loop.trips, ∀ a, (k0_off1583 k0_t4) a + S1x1x1x16.size a ≤ S2x4x4x1024.size a
  k0_off1584_inb : ∀ k0_t4 : Fin k0_t4_loop.trips, ∀ a, (k0_off1584 k0_t4) a + S1x1x1x16.size a ≤ S4x4x4x1024.size a
  k0_off1585_inb : ∀ k0_t4 : Fin k0_t4_loop.trips, ∀ a, (k0_off1585 k0_t4) a + S1x1x1x16.size a ≤ S2x4x4x1024.size a
  k0_off1586_inb : ∀ k0_t4 : Fin k0_t4_loop.trips, ∀ a, (k0_off1586 k0_t4) a + S1x1x1x16.size a ≤ S4x4x4x1024.size a
  k0_off1587_inb : ∀ k0_t4 : Fin k0_t4_loop.trips, ∀ a, (k0_off1587 k0_t4) a + S1x1x1x16.size a ≤ S2x4x4x1024.size a
  k0_off1588_inb : ∀ k0_t4 : Fin k0_t4_loop.trips, ∀ a, (k0_off1588 k0_t4) a + S1x1x1x16.size a ≤ S4x4x4x1024.size a
  k0_off1589_inb : ∀ k0_t4 : Fin k0_t4_loop.trips, ∀ a, (k0_off1589 k0_t4) a + S1x1x1x16.size a ≤ S2x4x4x1024.size a
  k0_off1590_inb : ∀ k0_t4 : Fin k0_t4_loop.trips, ∀ a, (k0_off1590 k0_t4) a + S1x1x1x16.size a ≤ S4x4x4x1024.size a
  k0_off1591_inb : ∀ k0_t4 : Fin k0_t4_loop.trips, ∀ a, (k0_off1591 k0_t4) a + S1x1x1x16.size a ≤ S2x4x4x1024.size a
  k0_off1592_inb : ∀ k0_t4 : Fin k0_t4_loop.trips, ∀ a, (k0_off1592 k0_t4) a + S1x1x1x16.size a ≤ S4x4x4x1024.size a
  k0_off1593_inb : ∀ k0_t4 : Fin k0_t4_loop.trips, ∀ a, (k0_off1593 k0_t4) a + S1x1x1x16.size a ≤ S2x4x4x1024.size a
  k0_off1594_inb : ∀ k0_t4 : Fin k0_t4_loop.trips, ∀ a, (k0_off1594 k0_t4) a + S1x1x1x16.size a ≤ S4x4x4x1024.size a
  k0_off1595_inb : ∀ k0_t4 : Fin k0_t4_loop.trips, ∀ a, (k0_off1595 k0_t4) a + S1x1x1x16.size a ≤ S2x4x4x1024.size a
  k0_off1596_inb : ∀ k0_t4 : Fin k0_t4_loop.trips, ∀ a, (k0_off1596 k0_t4) a + S1x1x1x16.size a ≤ S4x4x4x1024.size a
  k0_off1597_inb : ∀ k0_t4 : Fin k0_t4_loop.trips, ∀ a, (k0_off1597 k0_t4) a + S1x1x1x16.size a ≤ S2x4x4x1024.size a
  k0_off1598_inb : ∀ k0_t4 : Fin k0_t4_loop.trips, ∀ a, (k0_off1598 k0_t4) a + S1x1x1x16.size a ≤ S4x4x4x1024.size a
  k0_off1599_inb : ∀ k0_t4 : Fin k0_t4_loop.trips, ∀ a, (k0_off1599 k0_t4) a + S1x1x1x16.size a ≤ S2x4x4x1024.size a
  k0_off1600_inb : ∀ k0_t4 : Fin k0_t4_loop.trips, ∀ a, (k0_off1600 k0_t4) a + S1x1x1x16.size a ≤ S4x4x4x1024.size a
  k0_off1601_inb : ∀ k0_t4 : Fin k0_t4_loop.trips, ∀ a, (k0_off1601 k0_t4) a + S1x1x1x16.size a ≤ S2x4x4x1024.size a
  k0_off1602_inb : ∀ k0_t4 : Fin k0_t4_loop.trips, ∀ a, (k0_off1602 k0_t4) a + S1x1x1x16.size a ≤ S4x4x4x1024.size a
  k0_off1603_inb : ∀ k0_t4 : Fin k0_t4_loop.trips, ∀ a, (k0_off1603 k0_t4) a + S1x1x1x16.size a ≤ S2x4x4x1024.size a
  k0_off1604_inb : ∀ k0_t4 : Fin k0_t4_loop.trips, ∀ a, (k0_off1604 k0_t4) a + S1x1x1x16.size a ≤ S4x4x4x1024.size a
  k0_off1605_inb : ∀ k0_t4 : Fin k0_t4_loop.trips, ∀ a, (k0_off1605 k0_t4) a + S1x1x1x16.size a ≤ S2x4x4x1024.size a
  k0_off1606_inb : ∀ k0_t4 : Fin k0_t4_loop.trips, ∀ a, (k0_off1606 k0_t4) a + S1x1x1x16.size a ≤ S4x4x4x1024.size a
  k0_off1607_inb : ∀ k0_t4 : Fin k0_t4_loop.trips, ∀ a, (k0_off1607 k0_t4) a + S1x1x1x16.size a ≤ S2x4x4x1024.size a
  k0_off1608_inb : ∀ k0_t4 : Fin k0_t4_loop.trips, ∀ a, (k0_off1608 k0_t4) a + S1x1x1x16.size a ≤ S4x4x4x1024.size a
  k0_off1609_inb : ∀ k0_t4 : Fin k0_t4_loop.trips, ∀ a, (k0_off1609 k0_t4) a + S1x1x1x16.size a ≤ S2x4x4x1024.size a
  k0_off1610_inb : ∀ k0_t4 : Fin k0_t4_loop.trips, ∀ a, (k0_off1610 k0_t4) a + S1x1x1x16.size a ≤ S4x4x4x1024.size a
  k0_off1611_inb : ∀ k0_t4 : Fin k0_t4_loop.trips, ∀ a, (k0_off1611 k0_t4) a + S1x1x1x16.size a ≤ S2x4x4x1024.size a
  k0_off1612_inb : ∀ k0_t4 : Fin k0_t4_loop.trips, ∀ a, (k0_off1612 k0_t4) a + S1x1x1x16.size a ≤ S4x4x4x1024.size a
  k0_off1613_inb : ∀ k0_t4 : Fin k0_t4_loop.trips, ∀ a, (k0_off1613 k0_t4) a + S1x1x1x16.size a ≤ S2x4x4x1024.size a
  k0_off1614_inb : ∀ k0_t4 : Fin k0_t4_loop.trips, ∀ a, (k0_off1614 k0_t4) a + S1x1x1x16.size a ≤ S4x4x4x1024.size a
  k0_off1615_inb : ∀ k0_t4 : Fin k0_t4_loop.trips, ∀ a, (k0_off1615 k0_t4) a + S1x1x1x16.size a ≤ S2x4x4x1024.size a
  k0_off1616_inb : ∀ k0_t4 : Fin k0_t4_loop.trips, ∀ a, (k0_off1616 k0_t4) a + S1x1x1x16.size a ≤ S4x4x4x1024.size a
  k0_off1617_inb : ∀ k0_t4 : Fin k0_t4_loop.trips, ∀ a, (k0_off1617 k0_t4) a + S1x1x1x16.size a ≤ S2x4x4x1024.size a
  k0_off1618_inb : ∀ k0_t4 : Fin k0_t4_loop.trips, ∀ a, (k0_off1618 k0_t4) a + S1x1x1x16.size a ≤ S4x4x4x1024.size a
  k0_off1619_inb : ∀ k0_t4 : Fin k0_t4_loop.trips, ∀ a, (k0_off1619 k0_t4) a + S1x1x1x16.size a ≤ S2x4x4x1024.size a
  k0_off1620_inb : ∀ k0_t4 : Fin k0_t4_loop.trips, ∀ a, (k0_off1620 k0_t4) a + S1x1x1x16.size a ≤ S4x4x4x1024.size a
  k0_off1621_inb : ∀ k0_t4 : Fin k0_t4_loop.trips, ∀ a, (k0_off1621 k0_t4) a + S1x1x1x16.size a ≤ S2x4x4x1024.size a
  k0_off1622_inb : ∀ k0_t4 : Fin k0_t4_loop.trips, ∀ a, (k0_off1622 k0_t4) a + S1x1x1x16.size a ≤ S4x4x4x1024.size a
  k0_off1623_inb : ∀ k0_t4 : Fin k0_t4_loop.trips, ∀ a, (k0_off1623 k0_t4) a + S1x1x1x16.size a ≤ S2x4x4x1024.size a
  k0_off1624_inb : ∀ k0_t4 : Fin k0_t4_loop.trips, ∀ a, (k0_off1624 k0_t4) a + S1x1x1x16.size a ≤ S4x4x4x1024.size a
  k0_off1625_inb : ∀ k0_t4 : Fin k0_t4_loop.trips, ∀ a, (k0_off1625 k0_t4) a + S1x1x1x16.size a ≤ S2x4x4x1024.size a
  k0_off1626_inb : ∀ k0_t4 : Fin k0_t4_loop.trips, ∀ a, (k0_off1626 k0_t4) a + S1x1x1x16.size a ≤ S4x4x4x1024.size a
  k0_off1627_inb : ∀ k0_t4 : Fin k0_t4_loop.trips, ∀ a, (k0_off1627 k0_t4) a + S1x1x1x16.size a ≤ S2x4x4x1024.size a
  k0_off1628_inb : ∀ k0_t4 : Fin k0_t4_loop.trips, ∀ a, (k0_off1628 k0_t4) a + S1x1x1x16.size a ≤ S4x4x4x1024.size a
  k0_off1629_inb : ∀ k0_t4 : Fin k0_t4_loop.trips, ∀ a, (k0_off1629 k0_t4) a + S1x1x1x16.size a ≤ S2x4x4x1024.size a
  k0_off1630_inb : ∀ k0_t4 : Fin k0_t4_loop.trips, ∀ a, (k0_off1630 k0_t4) a + S1x1x1x16.size a ≤ S4x4x4x1024.size a
  k0_off1631_inb : ∀ k0_t4 : Fin k0_t4_loop.trips, ∀ a, (k0_off1631 k0_t4) a + S1x1x1x16.size a ≤ S2x4x4x1024.size a
  k0_off1632_inb : ∀ k0_t4 : Fin k0_t4_loop.trips, ∀ a, (k0_off1632 k0_t4) a + S1x1x1x16.size a ≤ S4x4x4x1024.size a
  k0_off1633_inb : ∀ k0_t4 : Fin k0_t4_loop.trips, ∀ a, (k0_off1633 k0_t4) a + S1x1x1x16.size a ≤ S2x4x4x1024.size a
  k0_off1634_inb : ∀ k0_t4 : Fin k0_t4_loop.trips, ∀ a, (k0_off1634 k0_t4) a + S1x1x1x16.size a ≤ S4x4x4x1024.size a
  k0_off1635_inb : ∀ k0_t4 : Fin k0_t4_loop.trips, ∀ a, (k0_off1635 k0_t4) a + S1x1x1x16.size a ≤ S2x4x4x1024.size a
  k0_off1636_inb : ∀ k0_t4 : Fin k0_t4_loop.trips, ∀ a, (k0_off1636 k0_t4) a + S1x1x1x16.size a ≤ S4x4x4x1024.size a
  k0_off1637_inb : ∀ k0_t4 : Fin k0_t4_loop.trips, ∀ a, (k0_off1637 k0_t4) a + S1x1x1x16.size a ≤ S2x4x4x1024.size a
  k0_off1638_inb : ∀ k0_t4 : Fin k0_t4_loop.trips, ∀ a, (k0_off1638 k0_t4) a + S1x1x1x16.size a ≤ S4x4x4x1024.size a
  k0_off1639_inb : ∀ k0_t4 : Fin k0_t4_loop.trips, ∀ a, (k0_off1639 k0_t4) a + S1x1x1x16.size a ≤ S2x4x4x1024.size a
  k0_off1640_inb : ∀ k0_t4 : Fin k0_t4_loop.trips, ∀ a, (k0_off1640 k0_t4) a + S1x1x1x16.size a ≤ S4x4x4x1024.size a
  k0_off1641_inb : ∀ k0_t4 : Fin k0_t4_loop.trips, ∀ a, (k0_off1641 k0_t4) a + S1x1x1x16.size a ≤ S2x4x4x1024.size a
  k0_off1642_inb : ∀ k0_t4 : Fin k0_t4_loop.trips, ∀ a, (k0_off1642 k0_t4) a + S1x1x1x16.size a ≤ S4x4x4x1024.size a
  k0_off1643_inb : ∀ k0_t4 : Fin k0_t4_loop.trips, ∀ a, (k0_off1643 k0_t4) a + S1x1x1x16.size a ≤ S2x4x4x1024.size a
  k0_off1644_inb : ∀ k0_t4 : Fin k0_t4_loop.trips, ∀ a, (k0_off1644 k0_t4) a + S1x1x1x16.size a ≤ S4x4x4x1024.size a
  k0_off1645_inb : ∀ k0_t4 : Fin k0_t4_loop.trips, ∀ a, (k0_off1645 k0_t4) a + S1x1x1x16.size a ≤ S2x4x4x1024.size a
  k0_off1646_inb : ∀ k0_t4 : Fin k0_t4_loop.trips, ∀ a, (k0_off1646 k0_t4) a + S1x1x1x16.size a ≤ S4x4x4x1024.size a
  k0_off1647_inb : ∀ k0_t4 : Fin k0_t4_loop.trips, ∀ a, (k0_off1647 k0_t4) a + S1x1x1x16.size a ≤ S2x4x4x1024.size a
  k0_off1648_inb : ∀ k0_t4 : Fin k0_t4_loop.trips, ∀ a, (k0_off1648 k0_t4) a + S1x1x1x16.size a ≤ S4x4x4x1024.size a
  k0_off1649_inb : ∀ k0_t4 : Fin k0_t4_loop.trips, ∀ a, (k0_off1649 k0_t4) a + S1x1x1x16.size a ≤ S2x4x4x1024.size a
  k0_off1650_inb : ∀ k0_t4 : Fin k0_t4_loop.trips, ∀ a, (k0_off1650 k0_t4) a + S1x1x1x16.size a ≤ S4x4x4x1024.size a
  k0_off1651_inb : ∀ k0_t4 : Fin k0_t4_loop.trips, ∀ a, (k0_off1651 k0_t4) a + S1x1x1x16.size a ≤ S2x4x4x1024.size a
  k0_off1652_inb : ∀ k0_t4 : Fin k0_t4_loop.trips, ∀ a, (k0_off1652 k0_t4) a + S1x1x1x16.size a ≤ S4x4x4x1024.size a
  k0_off1653_inb : ∀ k0_t4 : Fin k0_t4_loop.trips, ∀ a, (k0_off1653 k0_t4) a + S1x1x1x16.size a ≤ S2x4x4x1024.size a
  k0_off1654_inb : ∀ k0_t4 : Fin k0_t4_loop.trips, ∀ a, (k0_off1654 k0_t4) a + S1x1x1x16.size a ≤ S4x4x4x1024.size a
  k0_off1655_inb : ∀ k0_t4 : Fin k0_t4_loop.trips, ∀ a, (k0_off1655 k0_t4) a + S1x1x1x16.size a ≤ S2x4x4x1024.size a
  k0_off1656_inb : ∀ k0_t4 : Fin k0_t4_loop.trips, ∀ a, (k0_off1656 k0_t4) a + S1x1x1x16.size a ≤ S4x4x4x1024.size a
  k0_off1657_inb : ∀ k0_t4 : Fin k0_t4_loop.trips, ∀ a, (k0_off1657 k0_t4) a + S1x1x1x16.size a ≤ S2x4x4x1024.size a
  k0_off1658_inb : ∀ k0_t4 : Fin k0_t4_loop.trips, ∀ a, (k0_off1658 k0_t4) a + S1x1x1x16.size a ≤ S4x4x4x1024.size a
  k0_off1659_inb : ∀ k0_t4 : Fin k0_t4_loop.trips, ∀ a, (k0_off1659 k0_t4) a + S1x1x1x16.size a ≤ S2x4x4x1024.size a
  k0_off1660_inb : ∀ k0_t4 : Fin k0_t4_loop.trips, ∀ a, (k0_off1660 k0_t4) a + S1x1x1x16.size a ≤ S4x4x4x1024.size a
  k0_off1661_inb : ∀ k0_t4 : Fin k0_t4_loop.trips, ∀ a, (k0_off1661 k0_t4) a + S1x1x1x16.size a ≤ S2x4x4x1024.size a
  k0_off1662_inb : ∀ k0_t4 : Fin k0_t4_loop.trips, ∀ a, (k0_off1662 k0_t4) a + S1x1x1x16.size a ≤ S4x4x4x1024.size a
  k0_off1663_inb : ∀ k0_t4 : Fin k0_t4_loop.trips, ∀ a, (k0_off1663 k0_t4) a + S1x1x1x16.size a ≤ S2x4x4x1024.size a
  k0_off1664_inb : ∀ k0_t4 : Fin k0_t4_loop.trips, ∀ a, (k0_off1664 k0_t4) a + S1x1x1x16.size a ≤ S4x4x4x1024.size a
  k0_off1665_inb : ∀ k0_t4 : Fin k0_t4_loop.trips, ∀ a, (k0_off1665 k0_t4) a + S1x1x1x16.size a ≤ S2x4x4x1024.size a
  k0_off1666_inb : ∀ k0_t4 : Fin k0_t4_loop.trips, ∀ a, (k0_off1666 k0_t4) a + S1x1x1x16.size a ≤ S4x4x4x1024.size a
  k0_off1667_inb : ∀ k0_t4 : Fin k0_t4_loop.trips, ∀ a, (k0_off1667 k0_t4) a + S1x1x1x16.size a ≤ S2x4x4x1024.size a
  k0_off1668_inb : ∀ k0_t4 : Fin k0_t4_loop.trips, ∀ a, (k0_off1668 k0_t4) a + S1x1x1x16.size a ≤ S4x4x4x1024.size a
  k0_off1669_inb : ∀ k0_t4 : Fin k0_t4_loop.trips, ∀ a, (k0_off1669 k0_t4) a + S1x1x1x16.size a ≤ S2x4x4x1024.size a
  k0_off1670_inb : ∀ k0_t4 : Fin k0_t4_loop.trips, ∀ a, (k0_off1670 k0_t4) a + S1x1x1x16.size a ≤ S4x4x4x1024.size a
  k0_off1671_inb : ∀ k0_t4 : Fin k0_t4_loop.trips, ∀ a, (k0_off1671 k0_t4) a + S1x1x1x16.size a ≤ S2x4x4x1024.size a
  k0_off1672_inb : ∀ k0_t4 : Fin k0_t4_loop.trips, ∀ a, (k0_off1672 k0_t4) a + S1x1x1x16.size a ≤ S4x4x4x1024.size a
  k0_off1673_inb : ∀ k0_t4 : Fin k0_t4_loop.trips, ∀ a, (k0_off1673 k0_t4) a + S1x1x1x16.size a ≤ S2x4x4x1024.size a
  k0_off1674_inb : ∀ k0_t4 : Fin k0_t4_loop.trips, ∀ a, (k0_off1674 k0_t4) a + S1x1x1x16.size a ≤ S4x4x4x1024.size a
  k0_off1675_inb : ∀ k0_t4 : Fin k0_t4_loop.trips, ∀ a, (k0_off1675 k0_t4) a + S1x1x1x16.size a ≤ S2x4x4x1024.size a
  k0_off1676_inb : ∀ k0_t4 : Fin k0_t4_loop.trips, ∀ a, (k0_off1676 k0_t4) a + S1x1x1x16.size a ≤ S4x4x4x1024.size a
  k0_off1677_inb : ∀ k0_t4 : Fin k0_t4_loop.trips, ∀ a, (k0_off1677 k0_t4) a + S1x1x1x16.size a ≤ S2x4x4x1024.size a
  k0_off1678_inb : ∀ k0_t4 : Fin k0_t4_loop.trips, ∀ a, (k0_off1678 k0_t4) a + S1x1x1x16.size a ≤ S4x4x4x1024.size a
  k0_off1679_inb : ∀ k0_t4 : Fin k0_t4_loop.trips, ∀ a, (k0_off1679 k0_t4) a + S1x1x1x16.size a ≤ S2x4x4x1024.size a
  k0_off1680_inb : ∀ k0_t4 : Fin k0_t4_loop.trips, ∀ a, (k0_off1680 k0_t4) a + S1x1x1x16.size a ≤ S4x4x4x1024.size a
  k0_off1681_inb : ∀ k0_t4 : Fin k0_t4_loop.trips, ∀ a, (k0_off1681 k0_t4) a + S1x1x1x16.size a ≤ S2x4x4x1024.size a
  k0_off1682_inb : ∀ k0_t4 : Fin k0_t4_loop.trips, ∀ a, (k0_off1682 k0_t4) a + S1x1x1x16.size a ≤ S4x4x4x1024.size a
  k0_off1683_inb : ∀ k0_t4 : Fin k0_t4_loop.trips, ∀ a, (k0_off1683 k0_t4) a + S1x1x1x16.size a ≤ S2x4x4x1024.size a
  k0_off1684_inb : ∀ k0_t4 : Fin k0_t4_loop.trips, ∀ a, (k0_off1684 k0_t4) a + S1x1x1x16.size a ≤ S4x4x4x1024.size a
  k0_off1685_inb : ∀ k0_t4 : Fin k0_t4_loop.trips, ∀ a, (k0_off1685 k0_t4) a + S1x1x1x16.size a ≤ S2x4x4x1024.size a
  k0_off1686_inb : ∀ k0_t4 : Fin k0_t4_loop.trips, ∀ a, (k0_off1686 k0_t4) a + S1x1x1x16.size a ≤ S4x4x4x1024.size a
  k0_off1687_inb : ∀ k0_t4 : Fin k0_t4_loop.trips, ∀ a, (k0_off1687 k0_t4) a + S1x1x1x16.size a ≤ S2x4x4x1024.size a
  k0_off1688_inb : ∀ k0_t4 : Fin k0_t4_loop.trips, ∀ a, (k0_off1688 k0_t4) a + S1x1x1x16.size a ≤ S4x4x4x1024.size a
  k0_off1689_inb : ∀ k0_t4 : Fin k0_t4_loop.trips, ∀ a, (k0_off1689 k0_t4) a + S1x1x1x16.size a ≤ S2x4x4x1024.size a
  k0_off1690_inb : ∀ k0_t4 : Fin k0_t4_loop.trips, ∀ a, (k0_off1690 k0_t4) a + S1x1x1x16.size a ≤ S4x4x4x1024.size a
  k0_off1691_inb : ∀ k0_t4 : Fin k0_t4_loop.trips, ∀ a, (k0_off1691 k0_t4) a + S1x1x1x16.size a ≤ S2x4x4x1024.size a
  k0_off1692_inb : ∀ k0_t4 : Fin k0_t4_loop.trips, ∀ a, (k0_off1692 k0_t4) a + S1x1x1x16.size a ≤ S4x4x4x1024.size a
  k0_off1693_inb : ∀ k0_t4 : Fin k0_t4_loop.trips, ∀ a, (k0_off1693 k0_t4) a + S1x1x1x16.size a ≤ S2x4x4x1024.size a
  k0_off1694_inb : ∀ k0_t4 : Fin k0_t4_loop.trips, ∀ a, (k0_off1694 k0_t4) a + S1x1x1x16.size a ≤ S4x4x4x1024.size a
  k0_off1695_inb : ∀ k0_t4 : Fin k0_t4_loop.trips, ∀ a, (k0_off1695 k0_t4) a + S1x1x1x16.size a ≤ S2x4x4x1024.size a
  k0_off1696_inb : ∀ k0_t4 : Fin k0_t4_loop.trips, ∀ a, (k0_off1696 k0_t4) a + S1x1x1x16.size a ≤ S4x4x4x1024.size a
  k0_off1697_inb : ∀ k0_t4 : Fin k0_t4_loop.trips, ∀ a, (k0_off1697 k0_t4) a + S1x1x1x16.size a ≤ S2x4x4x1024.size a
  k0_off1698_inb : ∀ k0_t4 : Fin k0_t4_loop.trips, ∀ a, (k0_off1698 k0_t4) a + S1x1x1x16.size a ≤ S4x4x4x1024.size a
  k0_off1699_inb : ∀ k0_t4 : Fin k0_t4_loop.trips, ∀ a, (k0_off1699 k0_t4) a + S1x1x1x16.size a ≤ S2x4x4x1024.size a
  k0_off1700_inb : ∀ k0_t4 : Fin k0_t4_loop.trips, ∀ a, (k0_off1700 k0_t4) a + S1x1x1x16.size a ≤ S4x4x4x1024.size a
  k0_off1701_inb : ∀ k0_t4 : Fin k0_t4_loop.trips, ∀ a, (k0_off1701 k0_t4) a + S1x1x1x16.size a ≤ S2x4x4x1024.size a
  k0_off1702_inb : ∀ k0_t4 : Fin k0_t4_loop.trips, ∀ a, (k0_off1702 k0_t4) a + S1x1x1x16.size a ≤ S4x4x4x1024.size a
  k0_off1703_inb : ∀ k0_t4 : Fin k0_t4_loop.trips, ∀ a, (k0_off1703 k0_t4) a + S1x1x1x16.size a ≤ S2x4x4x1024.size a
  k0_off1704_inb : ∀ k0_t4 : Fin k0_t4_loop.trips, ∀ a, (k0_off1704 k0_t4) a + S1x1x1x16.size a ≤ S4x4x4x1024.size a
  k0_off1705_inb : ∀ k0_t4 : Fin k0_t4_loop.trips, ∀ a, (k0_off1705 k0_t4) a + S1x1x1x16.size a ≤ S2x4x4x1024.size a
  k0_off1706_inb : ∀ k0_t4 : Fin k0_t4_loop.trips, ∀ a, (k0_off1706 k0_t4) a + S1x1x1x16.size a ≤ S4x4x4x1024.size a
  k0_off1707_inb : ∀ k0_t4 : Fin k0_t4_loop.trips, ∀ a, (k0_off1707 k0_t4) a + S1x1x1x16.size a ≤ S2x4x4x1024.size a
  k0_off1708_inb : ∀ k0_t4 : Fin k0_t4_loop.trips, ∀ a, (k0_off1708 k0_t4) a + S1x1x1x16.size a ≤ S4x4x4x1024.size a
  k0_off1709_inb : ∀ k0_t4 : Fin k0_t4_loop.trips, ∀ a, (k0_off1709 k0_t4) a + S1x1x1x16.size a ≤ S2x4x4x1024.size a
  k0_off1710_inb : ∀ k0_t4 : Fin k0_t4_loop.trips, ∀ a, (k0_off1710 k0_t4) a + S1x1x1x16.size a ≤ S4x4x4x1024.size a
  k0_off1711_inb : ∀ k0_t4 : Fin k0_t4_loop.trips, ∀ a, (k0_off1711 k0_t4) a + S1x1x1x16.size a ≤ S2x4x4x1024.size a
  k0_off1712_inb : ∀ k0_t4 : Fin k0_t4_loop.trips, ∀ a, (k0_off1712 k0_t4) a + S1x1x1x16.size a ≤ S4x4x4x1024.size a
  k0_off1713_inb : ∀ k0_t4 : Fin k0_t4_loop.trips, ∀ a, (k0_off1713 k0_t4) a + S1x1x1x16.size a ≤ S2x4x4x1024.size a
  k0_off1714_inb : ∀ k0_t4 : Fin k0_t4_loop.trips, ∀ a, (k0_off1714 k0_t4) a + S1x1x1x16.size a ≤ S4x4x4x1024.size a
  k0_off1715_inb : ∀ k0_t4 : Fin k0_t4_loop.trips, ∀ a, (k0_off1715 k0_t4) a + S1x1x1x16.size a ≤ S2x4x4x1024.size a
  k0_off1716_inb : ∀ k0_t4 : Fin k0_t4_loop.trips, ∀ a, (k0_off1716 k0_t4) a + S1x1x1x16.size a ≤ S4x4x4x1024.size a
  k0_off1717_inb : ∀ k0_t4 : Fin k0_t4_loop.trips, ∀ a, (k0_off1717 k0_t4) a + S1x1x1x16.size a ≤ S2x4x4x1024.size a
  k0_off1718_inb : ∀ k0_t4 : Fin k0_t4_loop.trips, ∀ a, (k0_off1718 k0_t4) a + S1x1x1x16.size a ≤ S4x4x4x1024.size a
  k0_off1719_inb : ∀ k0_t4 : Fin k0_t4_loop.trips, ∀ a, (k0_off1719 k0_t4) a + S1x1x1x16.size a ≤ S2x4x4x1024.size a
  k0_off1720_inb : ∀ k0_t4 : Fin k0_t4_loop.trips, ∀ a, (k0_off1720 k0_t4) a + S1x1x1x16.size a ≤ S4x4x4x1024.size a
  k0_off1721_inb : ∀ k0_t4 : Fin k0_t4_loop.trips, ∀ a, (k0_off1721 k0_t4) a + S1x1x1x16.size a ≤ S2x4x4x1024.size a
  k0_off1722_inb : ∀ k0_t4 : Fin k0_t4_loop.trips, ∀ a, (k0_off1722 k0_t4) a + S1x1x1x16.size a ≤ S4x4x4x1024.size a
  k0_off1723_inb : ∀ k0_t4 : Fin k0_t4_loop.trips, ∀ a, (k0_off1723 k0_t4) a + S1x1x1x16.size a ≤ S2x4x4x1024.size a
  k0_off1724_inb : ∀ k0_t4 : Fin k0_t4_loop.trips, ∀ a, (k0_off1724 k0_t4) a + S1x1x1x16.size a ≤ S4x4x4x1024.size a
  k0_off1725_inb : ∀ k0_t4 : Fin k0_t4_loop.trips, ∀ a, (k0_off1725 k0_t4) a + S1x1x1x16.size a ≤ S2x4x4x1024.size a
  k0_off1726_inb : ∀ k0_t4 : Fin k0_t4_loop.trips, ∀ a, (k0_off1726 k0_t4) a + S1x1x1x16.size a ≤ S4x4x4x1024.size a
  k0_off1727_inb : ∀ k0_t4 : Fin k0_t4_loop.trips, ∀ a, (k0_off1727 k0_t4) a + S1x1x1x16.size a ≤ S2x4x4x1024.size a
  k0_off1728_inb : ∀ k0_t4 : Fin k0_t4_loop.trips, ∀ a, (k0_off1728 k0_t4) a + S1x1x1x16.size a ≤ S4x4x4x1024.size a
  k0_off1729_inb : ∀ k0_t4 : Fin k0_t4_loop.trips, ∀ a, (k0_off1729 k0_t4) a + S1x1x1x16.size a ≤ S2x4x4x1024.size a
  k0_off1730_inb : ∀ k0_t4 : Fin k0_t4_loop.trips, ∀ a, (k0_off1730 k0_t4) a + S1x1x1x16.size a ≤ S4x4x4x1024.size a
  k0_off1731_inb : ∀ k0_t4 : Fin k0_t4_loop.trips, ∀ a, (k0_off1731 k0_t4) a + S1x1x1x16.size a ≤ S2x4x4x1024.size a
  k0_off1732_inb : ∀ k0_t4 : Fin k0_t4_loop.trips, ∀ a, (k0_off1732 k0_t4) a + S1x1x1x16.size a ≤ S4x4x4x1024.size a
  k0_off1733_inb : ∀ k0_t4 : Fin k0_t4_loop.trips, ∀ a, (k0_off1733 k0_t4) a + S1x1x1x16.size a ≤ S2x4x4x1024.size a
  k0_off1734_inb : ∀ k0_t4 : Fin k0_t4_loop.trips, ∀ a, (k0_off1734 k0_t4) a + S1x1x1x16.size a ≤ S4x4x4x1024.size a
  k0_off1735_inb : ∀ k0_t4 : Fin k0_t4_loop.trips, ∀ a, (k0_off1735 k0_t4) a + S1x1x1x16.size a ≤ S2x4x4x1024.size a
  k0_off1736_inb : ∀ k0_t4 : Fin k0_t4_loop.trips, ∀ a, (k0_off1736 k0_t4) a + S1x1x1x16.size a ≤ S4x4x4x1024.size a
  k0_off1737_inb : ∀ k0_t4 : Fin k0_t4_loop.trips, ∀ a, (k0_off1737 k0_t4) a + S1x1x1x16.size a ≤ S2x4x4x1024.size a
  k0_off1738_inb : ∀ k0_t4 : Fin k0_t4_loop.trips, ∀ a, (k0_off1738 k0_t4) a + S1x1x1x16.size a ≤ S4x4x4x1024.size a
  k0_off1739_inb : ∀ k0_t4 : Fin k0_t4_loop.trips, ∀ a, (k0_off1739 k0_t4) a + S1x1x1x16.size a ≤ S2x4x4x1024.size a
  k0_off1740_inb : ∀ k0_t4 : Fin k0_t4_loop.trips, ∀ a, (k0_off1740 k0_t4) a + S1x1x1x16.size a ≤ S4x4x4x1024.size a
  k0_off1741_inb : ∀ k0_t4 : Fin k0_t4_loop.trips, ∀ a, (k0_off1741 k0_t4) a + S1x1x1x16.size a ≤ S2x4x4x1024.size a
  k0_off1742_inb : ∀ k0_t4 : Fin k0_t4_loop.trips, ∀ a, (k0_off1742 k0_t4) a + S1x1x1x16.size a ≤ S4x4x4x1024.size a
  k0_off1743_inb : ∀ k0_t4 : Fin k0_t4_loop.trips, ∀ a, (k0_off1743 k0_t4) a + S1x1x1x16.size a ≤ S2x4x4x1024.size a
  k0_off1744_inb : ∀ k0_t4 : Fin k0_t4_loop.trips, ∀ a, (k0_off1744 k0_t4) a + S1x1x1x16.size a ≤ S4x4x4x1024.size a
  k0_off1745_inb : ∀ k0_t4 : Fin k0_t4_loop.trips, ∀ a, (k0_off1745 k0_t4) a + S1x1x1x16.size a ≤ S2x4x4x1024.size a
  k0_off1746_inb : ∀ k0_t4 : Fin k0_t4_loop.trips, ∀ a, (k0_off1746 k0_t4) a + S1x1x1x16.size a ≤ S4x4x4x1024.size a
  k0_off1747_inb : ∀ k0_t4 : Fin k0_t4_loop.trips, ∀ a, (k0_off1747 k0_t4) a + S1x1x1x16.size a ≤ S2x4x4x1024.size a
  k0_off1748_inb : ∀ k0_t4 : Fin k0_t4_loop.trips, ∀ a, (k0_off1748 k0_t4) a + S1x1x1x16.size a ≤ S4x4x4x1024.size a
  k0_off1749_inb : ∀ k0_t4 : Fin k0_t4_loop.trips, ∀ a, (k0_off1749 k0_t4) a + S1x1x1x16.size a ≤ S2x4x4x1024.size a
  k0_off1750_inb : ∀ k0_t4 : Fin k0_t4_loop.trips, ∀ a, (k0_off1750 k0_t4) a + S1x1x1x16.size a ≤ S4x4x4x1024.size a
  k0_off1751_inb : ∀ k0_t4 : Fin k0_t4_loop.trips, ∀ a, (k0_off1751 k0_t4) a + S1x1x1x16.size a ≤ S2x4x4x1024.size a
  k0_off1752_inb : ∀ k0_t4 : Fin k0_t4_loop.trips, ∀ a, (k0_off1752 k0_t4) a + S1x1x1x16.size a ≤ S4x4x4x1024.size a
  k0_off1753_inb : ∀ k0_t4 : Fin k0_t4_loop.trips, ∀ a, (k0_off1753 k0_t4) a + S1x1x1x16.size a ≤ S2x4x4x1024.size a
  k0_off1754_inb : ∀ k0_t4 : Fin k0_t4_loop.trips, ∀ a, (k0_off1754 k0_t4) a + S1x1x1x16.size a ≤ S4x4x4x1024.size a
  k0_off1755_inb : ∀ k0_t4 : Fin k0_t4_loop.trips, ∀ a, (k0_off1755 k0_t4) a + S1x1x1x16.size a ≤ S2x4x4x1024.size a
  k0_off1756_inb : ∀ k0_t4 : Fin k0_t4_loop.trips, ∀ a, (k0_off1756 k0_t4) a + S1x1x1x16.size a ≤ S4x4x4x1024.size a
  k0_off1757_inb : ∀ k0_t4 : Fin k0_t4_loop.trips, ∀ a, (k0_off1757 k0_t4) a + S1x1x1x16.size a ≤ S2x4x4x1024.size a
  k0_off1758_inb : ∀ k0_t4 : Fin k0_t4_loop.trips, ∀ a, (k0_off1758 k0_t4) a + S1x1x1x16.size a ≤ S4x4x4x1024.size a
  k0_off1759_inb : ∀ k0_t4 : Fin k0_t4_loop.trips, ∀ a, (k0_off1759 k0_t4) a + S1x1x1x16.size a ≤ S2x4x4x1024.size a
  k0_off1760_inb : ∀ k0_t4 : Fin k0_t4_loop.trips, ∀ a, (k0_off1760 k0_t4) a + S1x1x1x16.size a ≤ S4x4x4x1024.size a
  k0_off1761_inb : ∀ k0_t4 : Fin k0_t4_loop.trips, ∀ a, (k0_off1761 k0_t4) a + S1x1x1x16.size a ≤ S2x4x4x1024.size a
  k0_off1762_inb : ∀ k0_t4 : Fin k0_t4_loop.trips, ∀ a, (k0_off1762 k0_t4) a + S1x1x1x16.size a ≤ S4x4x4x1024.size a
  k0_off1763_inb : ∀ k0_t4 : Fin k0_t4_loop.trips, ∀ a, (k0_off1763 k0_t4) a + S1x1x1x16.size a ≤ S2x4x4x1024.size a
  k0_off1764_inb : ∀ k0_t4 : Fin k0_t4_loop.trips, ∀ a, (k0_off1764 k0_t4) a + S1x1x1x16.size a ≤ S4x4x4x1024.size a
  k0_off1765_inb : ∀ k0_t4 : Fin k0_t4_loop.trips, ∀ a, (k0_off1765 k0_t4) a + S1x1x1x16.size a ≤ S2x4x4x1024.size a
  k0_off1766_inb : ∀ (i : grid0.Coords) (k0_t1 : Fin k0_t1_loop.trips), ∀ (k0_h6 : k0_cond6 k0_t1 = 1#1), ∀ a, (k0_off1766 i k0_t1) a + S4x1024.size a ≤ S4096x1024.size a
  k0_off1767_inb : ∀ (i : grid0.Coords) (k0_t1 : Fin k0_t1_loop.trips), ∀ (k0_h6 : k0_cond6 k0_t1 = 1#1), ∀ a, (k0_off1767 i k0_t1) a + S1x4x1024.size a ≤ S4x4096x1024.size a
  k0_off1768_inb : ∀ (i : grid0.Coords) (k0_t1 : Fin k0_t1_loop.trips), ∀ (k0_h6 : k0_cond6 k0_t1 = 1#1), ∀ a, (k0_off1768 i k0_t1) a + S1x4x1024.size a ≤ S4x4096x1024.size a
  k0_off1769_inb : ∀ (i : grid0.Coords) (k0_t1 : Fin k0_t1_loop.trips), ∀ (k0_h6 : k0_cond6 k0_t1 = 1#1), ∀ a, (k0_off1769 i k0_t1) a + S1x4x1024.size a ≤ S4x4096x1024.size a
  k0_off1770_inb : ∀ (i : grid0.Coords) (k0_t1 : Fin k0_t1_loop.trips), ∀ (k0_h6 : k0_cond6 k0_t1 = 1#1), ∀ a, (k0_off1770 i k0_t1) a + S1x4x1024.size a ≤ S4x4096x1024.size a
  k0_t5_ok : k0_t5_loop.OK
  k0_off1771_inb : ∀ k0_t5 : Fin k0_t5_loop.trips, ∀ a, (k0_off1771 k0_t5) a + S1x1x16.size a ≤ S4x4x1024.size a
  k0_off1772_inb : ∀ k0_t5 : Fin k0_t5_loop.trips, ∀ a, (k0_off1772 k0_t5) a + S1x1x16.size a ≤ S4x4x1024.size a
  k0_off1773_inb : ∀ k0_t5 : Fin k0_t5_loop.trips, ∀ a, (k0_off1773 k0_t5) a + S1x1x16.size a ≤ S4x4x1024.size a
  k0_off1774_inb : ∀ k0_t5 : Fin k0_t5_loop.trips, ∀ a, (k0_off1774 k0_t5) a + S1x1x16.size a ≤ S4x4x1024.size a
  k0_off1775_inb : ∀ k0_t5 : Fin k0_t5_loop.trips, ∀ a, (k0_off1775 k0_t5) a + S1x1x16.size a ≤ S4x4x1024.size a
  k0_off1776_inb : ∀ k0_t5 : Fin k0_t5_loop.trips, ∀ a, (k0_off1776 k0_t5) a + S1x1x16.size a ≤ S4x4x1024.size a
  k0_off1777_inb : ∀ k0_t5 : Fin k0_t5_loop.trips, ∀ a, (k0_off1777 k0_t5) a + S1x1x16.size a ≤ S4x4x1024.size a
  k0_off1778_inb : ∀ k0_t5 : Fin k0_t5_loop.trips, ∀ a, (k0_off1778 k0_t5) a + S1x1x16.size a ≤ S4x4x1024.size a
  k0_off1779_inb : ∀ k0_t5 : Fin k0_t5_loop.trips, ∀ a, (k0_off1779 k0_t5) a + S1x1x16.size a ≤ S4x4x1024.size a
  k0_off1780_inb : ∀ k0_t5 : Fin k0_t5_loop.trips, ∀ a, (k0_off1780 k0_t5) a + S1x1x16.size a ≤ S4x4x1024.size a
  k0_off1781_inb : ∀ k0_t5 : Fin k0_t5_loop.trips, ∀ a, (k0_off1781 k0_t5) a + S1x1x16.size a ≤ S4x4x1024.size a
  k0_off1782_inb : ∀ k0_t5 : Fin k0_t5_loop.trips, ∀ a, (k0_off1782 k0_t5) a + S1x1x16.size a ≤ S4x4x1024.size a
  k0_off1783_inb : ∀ k0_t5 : Fin k0_t5_loop.trips, ∀ a, (k0_off1783 k0_t5) a + S1x1x16.size a ≤ S4x4x1024.size a
  k0_off1784_inb : ∀ k0_t5 : Fin k0_t5_loop.trips, ∀ a, (k0_off1784 k0_t5) a + S1x1x16.size a ≤ S4x4x1024.size a
  k0_off1785_inb : ∀ k0_t5 : Fin k0_t5_loop.trips, ∀ a, (k0_off1785 k0_t5) a + S1x1x16.size a ≤ S4x4x1024.size a
  k0_off1786_inb : ∀ k0_t5 : Fin k0_t5_loop.trips, ∀ a, (k0_off1786 k0_t5) a + S1x1x16.size a ≤ S4x4x1024.size a
  k0_off1787_inb : ∀ k0_t5 : Fin k0_t5_loop.trips, ∀ a, (k0_off1787 k0_t5) a + S1x1x16.size a ≤ S4x4x1024.size a
  k0_off1788_inb : ∀ k0_t5 : Fin k0_t5_loop.trips, ∀ a, (k0_off1788 k0_t5) a + S1x1x16.size a ≤ S4x4x1024.size a
  k0_off1789_inb : ∀ k0_t5 : Fin k0_t5_loop.trips, ∀ a, (k0_off1789 k0_t5) a + S1x1x16.size a ≤ S4x4x1024.size a
  k0_off1790_inb : ∀ k0_t5 : Fin k0_t5_loop.trips, ∀ a, (k0_off1790 k0_t5) a + S1x1x16.size a ≤ S4x4x1024.size a
  k0_off1791_inb : ∀ k0_t5 : Fin k0_t5_loop.trips, ∀ a, (k0_off1791 k0_t5) a + S1x1x16.size a ≤ S4x4x1024.size a
  k0_off1792_inb : ∀ k0_t5 : Fin k0_t5_loop.trips, ∀ a, (k0_off1792 k0_t5) a + S1x1x16.size a ≤ S4x4x1024.size a
  k0_off1793_inb : ∀ k0_t5 : Fin k0_t5_loop.trips, ∀ a, (k0_off1793 k0_t5) a + S1x1x16.size a ≤ S4x4x1024.size a
  k0_off1794_inb : ∀ k0_t5 : Fin k0_t5_loop.trips, ∀ a, (k0_off1794 k0_t5) a + S1x1x16.size a ≤ S4x4x1024.size a
  k0_off1795_inb : ∀ k0_t5 : Fin k0_t5_loop.trips, ∀ a, (k0_off1795 k0_t5) a + S1x1x16.size a ≤ S4x4x1024.size a
  k0_off1796_inb : ∀ k0_t5 : Fin k0_t5_loop.trips, ∀ a, (k0_off1796 k0_t5) a + S1x1x16.size a ≤ S4x4x1024.size a
  k0_off1797_inb : ∀ k0_t5 : Fin k0_t5_loop.trips, ∀ a, (k0_off1797 k0_t5) a + S1x1x16.size a ≤ S4x4x1024.size a
  k0_off1798_inb : ∀ k0_t5 : Fin k0_t5_loop.trips, ∀ a, (k0_off1798 k0_t5) a + S1x1x16.size a ≤ S4x4x1024.size a
  k0_off1799_inb : ∀ k0_t5 : Fin k0_t5_loop.trips, ∀ a, (k0_off1799 k0_t5) a + S1x1x16.size a ≤ S4x4x1024.size a
  k0_off1800_inb : ∀ k0_t5 : Fin k0_t5_loop.trips, ∀ a, (k0_off1800 k0_t5) a + S1x1x16.size a ≤ S4x4x1024.size a
  k0_off1801_inb : ∀ k0_t5 : Fin k0_t5_loop.trips, ∀ a, (k0_off1801 k0_t5) a + S1x1x16.size a ≤ S4x4x1024.size a
  k0_off1802_inb : ∀ k0_t5 : Fin k0_t5_loop.trips, ∀ a, (k0_off1802 k0_t5) a + S1x1x16.size a ≤ S4x4x1024.size a
  k0_off1803_inb : ∀ k0_t5 : Fin k0_t5_loop.trips, ∀ a, (k0_off1803 k0_t5) a + S1x1x1x16.size a ≤ S4x4x4x1024.size a
  k0_off1804_inb : ∀ k0_t5 : Fin k0_t5_loop.trips, ∀ a, (k0_off1804 k0_t5) a + S1x1x1x16.size a ≤ S2x4x4x1024.size a
  k0_off1805_inb : ∀ k0_t5 : Fin k0_t5_loop.trips, ∀ a, (k0_off1805 k0_t5) a + S1x1x1x16.size a ≤ S4x4x4x1024.size a
  k0_off1806_inb : ∀ k0_t5 : Fin k0_t5_loop.trips, ∀ a, (k0_off1806 k0_t5) a + S1x1x1x16.size a ≤ S2x4x4x1024.size a
  k0_off1807_inb : ∀ k0_t5 : Fin k0_t5_loop.trips, ∀ a, (k0_off1807 k0_t5) a + S1x1x1x16.size a ≤ S4x4x4x1024.size a
  k0_off1808_inb : ∀ k0_t5 : Fin k0_t5_loop.trips, ∀ a, (k0_off1808 k0_t5) a + S1x1x1x16.size a ≤ S2x4x4x1024.size a
  k0_off1809_inb : ∀ k0_t5 : Fin k0_t5_loop.trips, ∀ a, (k0_off1809 k0_t5) a + S1x1x1x16.size a ≤ S4x4x4x1024.size a
  k0_off1810_inb : ∀ k0_t5 : Fin k0_t5_loop.trips, ∀ a, (k0_off1810 k0_t5) a + S1x1x1x16.size a ≤ S2x4x4x1024.size a
  k0_off1811_inb : ∀ k0_t5 : Fin k0_t5_loop.trips, ∀ a, (k0_off1811 k0_t5) a + S1x1x1x16.size a ≤ S4x4x4x1024.size a
  k0_off1812_inb : ∀ k0_t5 : Fin k0_t5_loop.trips, ∀ a, (k0_off1812 k0_t5) a + S1x1x1x16.size a ≤ S2x4x4x1024.size a
  k0_off1813_inb : ∀ k0_t5 : Fin k0_t5_loop.trips, ∀ a, (k0_off1813 k0_t5) a + S1x1x1x16.size a ≤ S4x4x4x1024.size a
  k0_off1814_inb : ∀ k0_t5 : Fin k0_t5_loop.trips, ∀ a, (k0_off1814 k0_t5) a + S1x1x1x16.size a ≤ S2x4x4x1024.size a
  k0_off1815_inb : ∀ k0_t5 : Fin k0_t5_loop.trips, ∀ a, (k0_off1815 k0_t5) a + S1x1x1x16.size a ≤ S4x4x4x1024.size a
  k0_off1816_inb : ∀ k0_t5 : Fin k0_t5_loop.trips, ∀ a, (k0_off1816 k0_t5) a + S1x1x1x16.size a ≤ S2x4x4x1024.size a
  k0_off1817_inb : ∀ k0_t5 : Fin k0_t5_loop.trips, ∀ a, (k0_off1817 k0_t5) a + S1x1x1x16.size a ≤ S4x4x4x1024.size a
  k0_off1818_inb : ∀ k0_t5 : Fin k0_t5_loop.trips, ∀ a, (k0_off1818 k0_t5) a + S1x1x1x16.size a ≤ S2x4x4x1024.size a
  k0_off1819_inb : ∀ k0_t5 : Fin k0_t5_loop.trips, ∀ a, (k0_off1819 k0_t5) a + S1x1x1x16.size a ≤ S4x4x4x1024.size a
  k0_off1820_inb : ∀ k0_t5 : Fin k0_t5_loop.trips, ∀ a, (k0_off1820 k0_t5) a + S1x1x1x16.size a ≤ S2x4x4x1024.size a
  k0_off1821_inb : ∀ k0_t5 : Fin k0_t5_loop.trips, ∀ a, (k0_off1821 k0_t5) a + S1x1x1x16.size a ≤ S4x4x4x1024.size a
  k0_off1822_inb : ∀ k0_t5 : Fin k0_t5_loop.trips, ∀ a, (k0_off1822 k0_t5) a + S1x1x1x16.size a ≤ S2x4x4x1024.size a
  k0_off1823_inb : ∀ k0_t5 : Fin k0_t5_loop.trips, ∀ a, (k0_off1823 k0_t5) a + S1x1x1x16.size a ≤ S4x4x4x1024.size a
  k0_off1824_inb : ∀ k0_t5 : Fin k0_t5_loop.trips, ∀ a, (k0_off1824 k0_t5) a + S1x1x1x16.size a ≤ S2x4x4x1024.size a
  k0_off1825_inb : ∀ k0_t5 : Fin k0_t5_loop.trips, ∀ a, (k0_off1825 k0_t5) a + S1x1x1x16.size a ≤ S4x4x4x1024.size a
  k0_off1826_inb : ∀ k0_t5 : Fin k0_t5_loop.trips, ∀ a, (k0_off1826 k0_t5) a + S1x1x1x16.size a ≤ S2x4x4x1024.size a
  k0_off1827_inb : ∀ k0_t5 : Fin k0_t5_loop.trips, ∀ a, (k0_off1827 k0_t5) a + S1x1x1x16.size a ≤ S4x4x4x1024.size a
  k0_off1828_inb : ∀ k0_t5 : Fin k0_t5_loop.trips, ∀ a, (k0_off1828 k0_t5) a + S1x1x1x16.size a ≤ S2x4x4x1024.size a
  k0_off1829_inb : ∀ k0_t5 : Fin k0_t5_loop.trips, ∀ a, (k0_off1829 k0_t5) a + S1x1x1x16.size a ≤ S4x4x4x1024.size a
  k0_off1830_inb : ∀ k0_t5 : Fin k0_t5_loop.trips, ∀ a, (k0_off1830 k0_t5) a + S1x1x1x16.size a ≤ S2x4x4x1024.size a
  k0_off1831_inb : ∀ k0_t5 : Fin k0_t5_loop.trips, ∀ a, (k0_off1831 k0_t5) a + S1x1x1x16.size a ≤ S4x4x4x1024.size a
  k0_off1832_inb : ∀ k0_t5 : Fin k0_t5_loop.trips, ∀ a, (k0_off1832 k0_t5) a + S1x1x1x16.size a ≤ S2x4x4x1024.size a
  k0_off1833_inb : ∀ k0_t5 : Fin k0_t5_loop.trips, ∀ a, (k0_off1833 k0_t5) a + S1x1x1x16.size a ≤ S4x4x4x1024.size a
  k0_off1834_inb : ∀ k0_t5 : Fin k0_t5_loop.trips, ∀ a, (k0_off1834 k0_t5) a + S1x1x1x16.size a ≤ S2x4x4x1024.size a
  k0_off1835_inb : ∀ k0_t5 : Fin k0_t5_loop.trips, ∀ a, (k0_off1835 k0_t5) a + S1x1x1x16.size a ≤ S4x4x4x1024.size a
  k0_off1836_inb : ∀ k0_t5 : Fin k0_t5_loop.trips, ∀ a, (k0_off1836 k0_t5) a + S1x1x1x16.size a ≤ S2x4x4x1024.size a
  k0_off1837_inb : ∀ k0_t5 : Fin k0_t5_loop.trips, ∀ a, (k0_off1837 k0_t5) a + S1x1x1x16.size a ≤ S4x4x4x1024.size a
  k0_off1838_inb : ∀ k0_t5 : Fin k0_t5_loop.trips, ∀ a, (k0_off1838 k0_t5) a + S1x1x1x16.size a ≤ S2x4x4x1024.size a
  k0_off1839_inb : ∀ k0_t5 : Fin k0_t5_loop.trips, ∀ a, (k0_off1839 k0_t5) a + S1x1x1x16.size a ≤ S4x4x4x1024.size a
  k0_off1840_inb : ∀ k0_t5 : Fin k0_t5_loop.trips, ∀ a, (k0_off1840 k0_t5) a + S1x1x1x16.size a ≤ S2x4x4x1024.size a
  k0_off1841_inb : ∀ k0_t5 : Fin k0_t5_loop.trips, ∀ a, (k0_off1841 k0_t5) a + S1x1x1x16.size a ≤ S4x4x4x1024.size a
  k0_off1842_inb : ∀ k0_t5 : Fin k0_t5_loop.trips, ∀ a, (k0_off1842 k0_t5) a + S1x1x1x16.size a ≤ S2x4x4x1024.size a
  k0_off1843_inb : ∀ k0_t5 : Fin k0_t5_loop.trips, ∀ a, (k0_off1843 k0_t5) a + S1x1x1x16.size a ≤ S4x4x4x1024.size a
  k0_off1844_inb : ∀ k0_t5 : Fin k0_t5_loop.trips, ∀ a, (k0_off1844 k0_t5) a + S1x1x1x16.size a ≤ S2x4x4x1024.size a
  k0_off1845_inb : ∀ k0_t5 : Fin k0_t5_loop.trips, ∀ a, (k0_off1845 k0_t5) a + S1x1x1x16.size a ≤ S4x4x4x1024.size a
  k0_off1846_inb : ∀ k0_t5 : Fin k0_t5_loop.trips, ∀ a, (k0_off1846 k0_t5) a + S1x1x1x16.size a ≤ S2x4x4x1024.size a
  k0_off1847_inb : ∀ k0_t5 : Fin k0_t5_loop.trips, ∀ a, (k0_off1847 k0_t5) a + S1x1x1x16.size a ≤ S4x4x4x1024.size a
  k0_off1848_inb : ∀ k0_t5 : Fin k0_t5_loop.trips, ∀ a, (k0_off1848 k0_t5) a + S1x1x1x16.size a ≤ S2x4x4x1024.size a
  k0_off1849_inb : ∀ k0_t5 : Fin k0_t5_loop.trips, ∀ a, (k0_off1849 k0_t5) a + S1x1x1x16.size a ≤ S4x4x4x1024.size a
  k0_off1850_inb : ∀ k0_t5 : Fin k0_t5_loop.trips, ∀ a, (k0_off1850 k0_t5) a + S1x1x1x16.size a ≤ S2x4x4x1024.size a
  k0_off1851_inb : ∀ k0_t5 : Fin k0_t5_loop.trips, ∀ a, (k0_off1851 k0_t5) a + S1x1x1x16.size a ≤ S4x4x4x1024.size a
  k0_off1852_inb : ∀ k0_t5 : Fin k0_t5_loop.trips, ∀ a, (k0_off1852 k0_t5) a + S1x1x1x16.size a ≤ S2x4x4x1024.size a
  k0_off1853_inb : ∀ k0_t5 : Fin k0_t5_loop.trips, ∀ a, (k0_off1853 k0_t5) a + S1x1x1x16.size a ≤ S4x4x4x1024.size a
  k0_off1854_inb : ∀ k0_t5 : Fin k0_t5_loop.trips, ∀ a, (k0_off1854 k0_t5) a + S1x1x1x16.size a ≤ S2x4x4x1024.size a
  k0_off1855_inb : ∀ k0_t5 : Fin k0_t5_loop.trips, ∀ a, (k0_off1855 k0_t5) a + S1x1x1x16.size a ≤ S4x4x4x1024.size a
  k0_off1856_inb : ∀ k0_t5 : Fin k0_t5_loop.trips, ∀ a, (k0_off1856 k0_t5) a + S1x1x1x16.size a ≤ S2x4x4x1024.size a
  k0_off1857_inb : ∀ k0_t5 : Fin k0_t5_loop.trips, ∀ a, (k0_off1857 k0_t5) a + S1x1x1x16.size a ≤ S4x4x4x1024.size a
  k0_off1858_inb : ∀ k0_t5 : Fin k0_t5_loop.trips, ∀ a, (k0_off1858 k0_t5) a + S1x1x1x16.size a ≤ S2x4x4x1024.size a
  k0_off1859_inb : ∀ k0_t5 : Fin k0_t5_loop.trips, ∀ a, (k0_off1859 k0_t5) a + S1x1x1x16.size a ≤ S4x4x4x1024.size a
  k0_off1860_inb : ∀ k0_t5 : Fin k0_t5_loop.trips, ∀ a, (k0_off1860 k0_t5) a + S1x1x1x16.size a ≤ S2x4x4x1024.size a
  k0_off1861_inb : ∀ k0_t5 : Fin k0_t5_loop.trips, ∀ a, (k0_off1861 k0_t5) a + S1x1x1x16.size a ≤ S4x4x4x1024.size a
  k0_off1862_inb : ∀ k0_t5 : Fin k0_t5_loop.trips, ∀ a, (k0_off1862 k0_t5) a + S1x1x1x16.size a ≤ S2x4x4x1024.size a
  k0_off1863_inb : ∀ k0_t5 : Fin k0_t5_loop.trips, ∀ a, (k0_off1863 k0_t5) a + S1x1x1x16.size a ≤ S4x4x4x1024.size a
  k0_off1864_inb : ∀ k0_t5 : Fin k0_t5_loop.trips, ∀ a, (k0_off1864 k0_t5) a + S1x1x1x16.size a ≤ S2x4x4x1024.size a
  k0_off1865_inb : ∀ k0_t5 : Fin k0_t5_loop.trips, ∀ a, (k0_off1865 k0_t5) a + S1x1x1x16.size a ≤ S4x4x4x1024.size a
  k0_off1866_inb : ∀ k0_t5 : Fin k0_t5_loop.trips, ∀ a, (k0_off1866 k0_t5) a + S1x1x1x16.size a ≤ S2x4x4x1024.size a
  k0_off1867_inb : ∀ k0_t5 : Fin k0_t5_loop.trips, ∀ a, (k0_off1867 k0_t5) a + S1x1x1x16.size a ≤ S4x4x4x1024.size a
  k0_off1868_inb : ∀ k0_t5 : Fin k0_t5_loop.trips, ∀ a, (k0_off1868 k0_t5) a + S1x1x1x16.size a ≤ S2x4x4x1024.size a
  k0_off1869_inb : ∀ k0_t5 : Fin k0_t5_loop.trips, ∀ a, (k0_off1869 k0_t5) a + S1x1x1x16.size a ≤ S4x4x4x1024.size a
  k0_off1870_inb : ∀ k0_t5 : Fin k0_t5_loop.trips, ∀ a, (k0_off1870 k0_t5) a + S1x1x1x16.size a ≤ S2x4x4x1024.size a
  k0_off1871_inb : ∀ k0_t5 : Fin k0_t5_loop.trips, ∀ a, (k0_off1871 k0_t5) a + S1x1x1x16.size a ≤ S4x4x4x1024.size a
  k0_off1872_inb : ∀ k0_t5 : Fin k0_t5_loop.trips, ∀ a, (k0_off1872 k0_t5) a + S1x1x1x16.size a ≤ S2x4x4x1024.size a
  k0_off1873_inb : ∀ k0_t5 : Fin k0_t5_loop.trips, ∀ a, (k0_off1873 k0_t5) a + S1x1x1x16.size a ≤ S4x4x4x1024.size a
  k0_off1874_inb : ∀ k0_t5 : Fin k0_t5_loop.trips, ∀ a, (k0_off1874 k0_t5) a + S1x1x1x16.size a ≤ S2x4x4x1024.size a
  k0_off1875_inb : ∀ k0_t5 : Fin k0_t5_loop.trips, ∀ a, (k0_off1875 k0_t5) a + S1x1x1x16.size a ≤ S4x4x4x1024.size a
  k0_off1876_inb : ∀ k0_t5 : Fin k0_t5_loop.trips, ∀ a, (k0_off1876 k0_t5) a + S1x1x1x16.size a ≤ S2x4x4x1024.size a
  k0_off1877_inb : ∀ k0_t5 : Fin k0_t5_loop.trips, ∀ a, (k0_off1877 k0_t5) a + S1x1x1x16.size a ≤ S4x4x4x1024.size a
  k0_off1878_inb : ∀ k0_t5 : Fin k0_t5_loop.trips, ∀ a, (k0_off1878 k0_t5) a + S1x1x1x16.size a ≤ S2x4x4x1024.size a
  k0_off1879_inb : ∀ k0_t5 : Fin k0_t5_loop.trips, ∀ a, (k0_off1879 k0_t5) a + S1x1x1x16.size a ≤ S4x4x4x1024.size a
  k0_off1880_inb : ∀ k0_t5 : Fin k0_t5_loop.trips, ∀ a, (k0_off1880 k0_t5) a + S1x1x1x16.size a ≤ S2x4x4x1024.size a
  k0_off1881_inb : ∀ k0_t5 : Fin k0_t5_loop.trips, ∀ a, (k0_off1881 k0_t5) a + S1x1x1x16.size a ≤ S4x4x4x1024.size a
  k0_off1882_inb : ∀ k0_t5 : Fin k0_t5_loop.trips, ∀ a, (k0_off1882 k0_t5) a + S1x1x1x16.size a ≤ S2x4x4x1024.size a
  k0_off1883_inb : ∀ k0_t5 : Fin k0_t5_loop.trips, ∀ a, (k0_off1883 k0_t5) a + S1x1x1x16.size a ≤ S4x4x4x1024.size a
  k0_off1884_inb : ∀ k0_t5 : Fin k0_t5_loop.trips, ∀ a, (k0_off1884 k0_t5) a + S1x1x1x16.size a ≤ S2x4x4x1024.size a
  k0_off1885_inb : ∀ k0_t5 : Fin k0_t5_loop.trips, ∀ a, (k0_off1885 k0_t5) a + S1x1x1x16.size a ≤ S4x4x4x1024.size a
  k0_off1886_inb : ∀ k0_t5 : Fin k0_t5_loop.trips, ∀ a, (k0_off1886 k0_t5) a + S1x1x1x16.size a ≤ S2x4x4x1024.size a
  k0_off1887_inb : ∀ k0_t5 : Fin k0_t5_loop.trips, ∀ a, (k0_off1887 k0_t5) a + S1x1x1x16.size a ≤ S4x4x4x1024.size a
  k0_off1888_inb : ∀ k0_t5 : Fin k0_t5_loop.trips, ∀ a, (k0_off1888 k0_t5) a + S1x1x1x16.size a ≤ S2x4x4x1024.size a
  k0_off1889_inb : ∀ k0_t5 : Fin k0_t5_loop.trips, ∀ a, (k0_off1889 k0_t5) a + S1x1x1x16.size a ≤ S4x4x4x1024.size a
  k0_off1890_inb : ∀ k0_t5 : Fin k0_t5_loop.trips, ∀ a, (k0_off1890 k0_t5) a + S1x1x1x16.size a ≤ S2x4x4x1024.size a
  k0_off1891_inb : ∀ k0_t5 : Fin k0_t5_loop.trips, ∀ a, (k0_off1891 k0_t5) a + S1x1x1x16.size a ≤ S4x4x4x1024.size a
  k0_off1892_inb : ∀ k0_t5 : Fin k0_t5_loop.trips, ∀ a, (k0_off1892 k0_t5) a + S1x1x1x16.size a ≤ S2x4x4x1024.size a
  k0_off1893_inb : ∀ k0_t5 : Fin k0_t5_loop.trips, ∀ a, (k0_off1893 k0_t5) a + S1x1x1x16.size a ≤ S4x4x4x1024.size a
  k0_off1894_inb : ∀ k0_t5 : Fin k0_t5_loop.trips, ∀ a, (k0_off1894 k0_t5) a + S1x1x1x16.size a ≤ S2x4x4x1024.size a
  k0_off1895_inb : ∀ k0_t5 : Fin k0_t5_loop.trips, ∀ a, (k0_off1895 k0_t5) a + S1x1x1x16.size a ≤ S4x4x4x1024.size a
  k0_off1896_inb : ∀ k0_t5 : Fin k0_t5_loop.trips, ∀ a, (k0_off1896 k0_t5) a + S1x1x1x16.size a ≤ S2x4x4x1024.size a
  k0_off1897_inb : ∀ k0_t5 : Fin k0_t5_loop.trips, ∀ a, (k0_off1897 k0_t5) a + S1x1x1x16.size a ≤ S4x4x4x1024.size a
  k0_off1898_inb : ∀ k0_t5 : Fin k0_t5_loop.trips, ∀ a, (k0_off1898 k0_t5) a + S1x1x1x16.size a ≤ S2x4x4x1024.size a
  k0_off1899_inb : ∀ k0_t5 : Fin k0_t5_loop.trips, ∀ a, (k0_off1899 k0_t5) a + S1x1x1x16.size a ≤ S4x4x4x1024.size a
  k0_off1900_inb : ∀ k0_t5 : Fin k0_t5_loop.trips, ∀ a, (k0_off1900 k0_t5) a + S1x1x1x16.size a ≤ S2x4x4x1024.size a
  k0_off1901_inb : ∀ k0_t5 : Fin k0_t5_loop.trips, ∀ a, (k0_off1901 k0_t5) a + S1x1x1x16.size a ≤ S4x4x4x1024.size a
  k0_off1902_inb : ∀ k0_t5 : Fin k0_t5_loop.trips, ∀ a, (k0_off1902 k0_t5) a + S1x1x1x16.size a ≤ S2x4x4x1024.size a
  k0_off1903_inb : ∀ k0_t5 : Fin k0_t5_loop.trips, ∀ a, (k0_off1903 k0_t5) a + S1x1x1x16.size a ≤ S4x4x4x1024.size a
  k0_off1904_inb : ∀ k0_t5 : Fin k0_t5_loop.trips, ∀ a, (k0_off1904 k0_t5) a + S1x1x1x16.size a ≤ S2x4x4x1024.size a
  k0_off1905_inb : ∀ k0_t5 : Fin k0_t5_loop.trips, ∀ a, (k0_off1905 k0_t5) a + S1x1x1x16.size a ≤ S4x4x4x1024.size a
  k0_off1906_inb : ∀ k0_t5 : Fin k0_t5_loop.trips, ∀ a, (k0_off1906 k0_t5) a + S1x1x1x16.size a ≤ S2x4x4x1024.size a
  k0_off1907_inb : ∀ k0_t5 : Fin k0_t5_loop.trips, ∀ a, (k0_off1907 k0_t5) a + S1x1x1x16.size a ≤ S4x4x4x1024.size a
  k0_off1908_inb : ∀ k0_t5 : Fin k0_t5_loop.trips, ∀ a, (k0_off1908 k0_t5) a + S1x1x1x16.size a ≤ S2x4x4x1024.size a
  k0_off1909_inb : ∀ k0_t5 : Fin k0_t5_loop.trips, ∀ a, (k0_off1909 k0_t5) a + S1x1x1x16.size a ≤ S4x4x4x1024.size a
  k0_off1910_inb : ∀ k0_t5 : Fin k0_t5_loop.trips, ∀ a, (k0_off1910 k0_t5) a + S1x1x1x16.size a ≤ S2x4x4x1024.size a
  k0_off1911_inb : ∀ k0_t5 : Fin k0_t5_loop.trips, ∀ a, (k0_off1911 k0_t5) a + S1x1x1x16.size a ≤ S4x4x4x1024.size a
  k0_off1912_inb : ∀ k0_t5 : Fin k0_t5_loop.trips, ∀ a, (k0_off1912 k0_t5) a + S1x1x1x16.size a ≤ S2x4x4x1024.size a
  k0_off1913_inb : ∀ k0_t5 : Fin k0_t5_loop.trips, ∀ a, (k0_off1913 k0_t5) a + S1x1x1x16.size a ≤ S4x4x4x1024.size a
  k0_off1914_inb : ∀ k0_t5 : Fin k0_t5_loop.trips, ∀ a, (k0_off1914 k0_t5) a + S1x1x1x16.size a ≤ S2x4x4x1024.size a
  k0_off1915_inb : ∀ k0_t5 : Fin k0_t5_loop.trips, ∀ a, (k0_off1915 k0_t5) a + S1x1x1x16.size a ≤ S4x4x4x1024.size a
  k0_off1916_inb : ∀ k0_t5 : Fin k0_t5_loop.trips, ∀ a, (k0_off1916 k0_t5) a + S1x1x1x16.size a ≤ S2x4x4x1024.size a
  k0_off1917_inb : ∀ k0_t5 : Fin k0_t5_loop.trips, ∀ a, (k0_off1917 k0_t5) a + S1x1x1x16.size a ≤ S4x4x4x1024.size a
  k0_off1918_inb : ∀ k0_t5 : Fin k0_t5_loop.trips, ∀ a, (k0_off1918 k0_t5) a + S1x1x1x16.size a ≤ S2x4x4x1024.size a
  k0_off1919_inb : ∀ k0_t5 : Fin k0_t5_loop.trips, ∀ a, (k0_off1919 k0_t5) a + S1x1x1x16.size a ≤ S4x4x4x1024.size a
  k0_off1920_inb : ∀ k0_t5 : Fin k0_t5_loop.trips, ∀ a, (k0_off1920 k0_t5) a + S1x1x1x16.size a ≤ S2x4x4x1024.size a
  k0_off1921_inb : ∀ k0_t5 : Fin k0_t5_loop.trips, ∀ a, (k0_off1921 k0_t5) a + S1x1x1x16.size a ≤ S4x4x4x1024.size a
  k0_off1922_inb : ∀ k0_t5 : Fin k0_t5_loop.trips, ∀ a, (k0_off1922 k0_t5) a + S1x1x1x16.size a ≤ S2x4x4x1024.size a
  k0_off1923_inb : ∀ k0_t5 : Fin k0_t5_loop.trips, ∀ a, (k0_off1923 k0_t5) a + S1x1x1x16.size a ≤ S4x4x4x1024.size a
  k0_off1924_inb : ∀ k0_t5 : Fin k0_t5_loop.trips, ∀ a, (k0_off1924 k0_t5) a + S1x1x1x16.size a ≤ S2x4x4x1024.size a
  k0_off1925_inb : ∀ k0_t5 : Fin k0_t5_loop.trips, ∀ a, (k0_off1925 k0_t5) a + S1x1x1x16.size a ≤ S4x4x4x1024.size a
  k0_off1926_inb : ∀ k0_t5 : Fin k0_t5_loop.trips, ∀ a, (k0_off1926 k0_t5) a + S1x1x1x16.size a ≤ S2x4x4x1024.size a
  k0_off1927_inb : ∀ k0_t5 : Fin k0_t5_loop.trips, ∀ a, (k0_off1927 k0_t5) a + S1x1x1x16.size a ≤ S4x4x4x1024.size a
  k0_off1928_inb : ∀ k0_t5 : Fin k0_t5_loop.trips, ∀ a, (k0_off1928 k0_t5) a + S1x1x1x16.size a ≤ S2x4x4x1024.size a
  k0_off1929_inb : ∀ k0_t5 : Fin k0_t5_loop.trips, ∀ a, (k0_off1929 k0_t5) a + S1x1x1x16.size a ≤ S4x4x4x1024.size a
  k0_off1930_inb : ∀ k0_t5 : Fin k0_t5_loop.trips, ∀ a, (k0_off1930 k0_t5) a + S1x1x1x16.size a ≤ S2x4x4x1024.size a
  k0_off1931_inb : ∀ k0_t5 : Fin k0_t5_loop.trips, ∀ a, (k0_off1931 k0_t5) a + S1x1x1x16.size a ≤ S4x4x4x1024.size a
  k0_off1932_inb : ∀ k0_t5 : Fin k0_t5_loop.trips, ∀ a, (k0_off1932 k0_t5) a + S1x1x1x16.size a ≤ S2x4x4x1024.size a
  k0_off1933_inb : ∀ k0_t5 : Fin k0_t5_loop.trips, ∀ a, (k0_off1933 k0_t5) a + S1x1x1x16.size a ≤ S4x4x4x1024.size a
  k0_off1934_inb : ∀ k0_t5 : Fin k0_t5_loop.trips, ∀ a, (k0_off1934 k0_t5) a + S1x1x1x16.size a ≤ S2x4x4x1024.size a
  k0_off1935_inb : ∀ k0_t5 : Fin k0_t5_loop.trips, ∀ a, (k0_off1935 k0_t5) a + S1x1x1x16.size a ≤ S4x4x4x1024.size a
  k0_off1936_inb : ∀ k0_t5 : Fin k0_t5_loop.trips, ∀ a, (k0_off1936 k0_t5) a + S1x1x1x16.size a ≤ S2x4x4x1024.size a
  k0_off1937_inb : ∀ k0_t5 : Fin k0_t5_loop.trips, ∀ a, (k0_off1937 k0_t5) a + S1x1x1x16.size a ≤ S4x4x4x1024.size a
  k0_off1938_inb : ∀ k0_t5 : Fin k0_t5_loop.trips, ∀ a, (k0_off1938 k0_t5) a + S1x1x1x16.size a ≤ S2x4x4x1024.size a
  k0_off1939_inb : ∀ k0_t5 : Fin k0_t5_loop.trips, ∀ a, (k0_off1939 k0_t5) a + S1x1x1x16.size a ≤ S4x4x4x1024.size a
  k0_off1940_inb : ∀ k0_t5 : Fin k0_t5_loop.trips, ∀ a, (k0_off1940 k0_t5) a + S1x1x1x16.size a ≤ S2x4x4x1024.size a
  k0_off1941_inb : ∀ k0_t5 : Fin k0_t5_loop.trips, ∀ a, (k0_off1941 k0_t5) a + S1x1x1x16.size a ≤ S4x4x4x1024.size a
  k0_off1942_inb : ∀ k0_t5 : Fin k0_t5_loop.trips, ∀ a, (k0_off1942 k0_t5) a + S1x1x1x16.size a ≤ S2x4x4x1024.size a
  k0_off1943_inb : ∀ k0_t5 : Fin k0_t5_loop.trips, ∀ a, (k0_off1943 k0_t5) a + S1x1x1x16.size a ≤ S4x4x4x1024.size a
  k0_off1944_inb : ∀ k0_t5 : Fin k0_t5_loop.trips, ∀ a, (k0_off1944 k0_t5) a + S1x1x1x16.size a ≤ S2x4x4x1024.size a
  k0_off1945_inb : ∀ k0_t5 : Fin k0_t5_loop.trips, ∀ a, (k0_off1945 k0_t5) a + S1x1x1x16.size a ≤ S4x4x4x1024.size a
  k0_off1946_inb : ∀ k0_t5 : Fin k0_t5_loop.trips, ∀ a, (k0_off1946 k0_t5) a + S1x1x1x16.size a ≤ S2x4x4x1024.size a
  k0_off1947_inb : ∀ k0_t5 : Fin k0_t5_loop.trips, ∀ a, (k0_off1947 k0_t5) a + S1x1x1x16.size a ≤ S4x4x4x1024.size a
  k0_off1948_inb : ∀ k0_t5 : Fin k0_t5_loop.trips, ∀ a, (k0_off1948 k0_t5) a + S1x1x1x16.size a ≤ S2x4x4x1024.size a
  k0_off1949_inb : ∀ k0_t5 : Fin k0_t5_loop.trips, ∀ a, (k0_off1949 k0_t5) a + S1x1x1x16.size a ≤ S4x4x4x1024.size a
  k0_off1950_inb : ∀ k0_t5 : Fin k0_t5_loop.trips, ∀ a, (k0_off1950 k0_t5) a + S1x1x1x16.size a ≤ S2x4x4x1024.size a
  k0_off1951_inb : ∀ k0_t5 : Fin k0_t5_loop.trips, ∀ a, (k0_off1951 k0_t5) a + S1x1x1x16.size a ≤ S4x4x4x1024.size a
  k0_off1952_inb : ∀ k0_t5 : Fin k0_t5_loop.trips, ∀ a, (k0_off1952 k0_t5) a + S1x1x1x16.size a ≤ S2x4x4x1024.size a
  k0_off1953_inb : ∀ k0_t5 : Fin k0_t5_loop.trips, ∀ a, (k0_off1953 k0_t5) a + S1x1x1x16.size a ≤ S4x4x4x1024.size a
  k0_off1954_inb : ∀ k0_t5 : Fin k0_t5_loop.trips, ∀ a, (k0_off1954 k0_t5) a + S1x1x1x16.size a ≤ S2x4x4x1024.size a
  k0_off1955_inb : ∀ k0_t5 : Fin k0_t5_loop.trips, ∀ a, (k0_off1955 k0_t5) a + S1x1x1x16.size a ≤ S4x4x4x1024.size a
  k0_off1956_inb : ∀ k0_t5 : Fin k0_t5_loop.trips, ∀ a, (k0_off1956 k0_t5) a + S1x1x1x16.size a ≤ S2x4x4x1024.size a
  k0_off1957_inb : ∀ k0_t5 : Fin k0_t5_loop.trips, ∀ a, (k0_off1957 k0_t5) a + S1x1x1x16.size a ≤ S4x4x4x1024.size a
  k0_off1958_inb : ∀ k0_t5 : Fin k0_t5_loop.trips, ∀ a, (k0_off1958 k0_t5) a + S1x1x1x16.size a ≤ S2x4x4x1024.size a
  k0_off1959_inb : ∀ k0_t5 : Fin k0_t5_loop.trips, ∀ a, (k0_off1959 k0_t5) a + S1x1x1x16.size a ≤ S4x4x4x1024.size a
  k0_off1960_inb : ∀ k0_t5 : Fin k0_t5_loop.trips, ∀ a, (k0_off1960 k0_t5) a + S1x1x1x16.size a ≤ S2x4x4x1024.size a
  k0_off1961_inb : ∀ k0_t5 : Fin k0_t5_loop.trips, ∀ a, (k0_off1961 k0_t5) a + S1x1x1x16.size a ≤ S4x4x4x1024.size a
  k0_off1962_inb : ∀ k0_t5 : Fin k0_t5_loop.trips, ∀ a, (k0_off1962 k0_t5) a + S1x1x1x16.size a ≤ S2x4x4x1024.size a
  k0_off1963_inb : ∀ k0_t5 : Fin k0_t5_loop.trips, ∀ a, (k0_off1963 k0_t5) a + S1x1x1x16.size a ≤ S4x4x4x1024.size a
  k0_off1964_inb : ∀ k0_t5 : Fin k0_t5_loop.trips, ∀ a, (k0_off1964 k0_t5) a + S1x1x1x16.size a ≤ S2x4x4x1024.size a
  k0_off1965_inb : ∀ k0_t5 : Fin k0_t5_loop.trips, ∀ a, (k0_off1965 k0_t5) a + S1x1x1x16.size a ≤ S4x4x4x1024.size a
  k0_off1966_inb : ∀ k0_t5 : Fin k0_t5_loop.trips, ∀ a, (k0_off1966 k0_t5) a + S1x1x1x16.size a ≤ S2x4x4x1024.size a
  k0_off1967_inb : ∀ k0_t5 : Fin k0_t5_loop.trips, ∀ a, (k0_off1967 k0_t5) a + S1x1x1x16.size a ≤ S4x4x4x1024.size a
  k0_off1968_inb : ∀ k0_t5 : Fin k0_t5_loop.trips, ∀ a, (k0_off1968 k0_t5) a + S1x1x1x16.size a ≤ S2x4x4x1024.size a
  k0_off1969_inb : ∀ k0_t5 : Fin k0_t5_loop.trips, ∀ a, (k0_off1969 k0_t5) a + S1x1x1x16.size a ≤ S4x4x4x1024.size a
  k0_off1970_inb : ∀ k0_t5 : Fin k0_t5_loop.trips, ∀ a, (k0_off1970 k0_t5) a + S1x1x1x16.size a ≤ S2x4x4x1024.size a
  k0_off1971_inb : ∀ k0_t5 : Fin k0_t5_loop.trips, ∀ a, (k0_off1971 k0_t5) a + S1x1x1x16.size a ≤ S4x4x4x1024.size a
  k0_off1972_inb : ∀ k0_t5 : Fin k0_t5_loop.trips, ∀ a, (k0_off1972 k0_t5) a + S1x1x1x16.size a ≤ S2x4x4x1024.size a
  k0_off1973_inb : ∀ k0_t5 : Fin k0_t5_loop.trips, ∀ a, (k0_off1973 k0_t5) a + S1x1x1x16.size a ≤ S4x4x4x1024.size a
  k0_off1974_inb : ∀ k0_t5 : Fin k0_t5_loop.trips, ∀ a, (k0_off1974 k0_t5) a + S1x1x1x16.size a ≤ S2x4x4x1024.size a
  k0_off1975_inb : ∀ k0_t5 : Fin k0_t5_loop.trips, ∀ a, (k0_off1975 k0_t5) a + S1x1x1x16.size a ≤ S4x4x4x1024.size a
  k0_off1976_inb : ∀ k0_t5 : Fin k0_t5_loop.trips, ∀ a, (k0_off1976 k0_t5) a + S1x1x1x16.size a ≤ S2x4x4x1024.size a
  k0_off1977_inb : ∀ k0_t5 : Fin k0_t5_loop.trips, ∀ a, (k0_off1977 k0_t5) a + S1x1x1x16.size a ≤ S4x4x4x1024.size a
  k0_off1978_inb : ∀ k0_t5 : Fin k0_t5_loop.trips, ∀ a, (k0_off1978 k0_t5) a + S1x1x1x16.size a ≤ S2x4x4x1024.size a
  k0_off1979_inb : ∀ k0_t5 : Fin k0_t5_loop.trips, ∀ a, (k0_off1979 k0_t5) a + S1x1x1x16.size a ≤ S4x4x4x1024.size a
  k0_off1980_inb : ∀ k0_t5 : Fin k0_t5_loop.trips, ∀ a, (k0_off1980 k0_t5) a + S1x1x1x16.size a ≤ S2x4x4x1024.size a
  k0_off1981_inb : ∀ k0_t5 : Fin k0_t5_loop.trips, ∀ a, (k0_off1981 k0_t5) a + S1x1x1x16.size a ≤ S4x4x4x1024.size a
  k0_off1982_inb : ∀ k0_t5 : Fin k0_t5_loop.trips, ∀ a, (k0_off1982 k0_t5) a + S1x1x1x16.size a ≤ S2x4x4x1024.size a
  k0_off1983_inb : ∀ k0_t5 : Fin k0_t5_loop.trips, ∀ a, (k0_off1983 k0_t5) a + S1x1x1x16.size a ≤ S4x4x4x1024.size a
  k0_off1984_inb : ∀ k0_t5 : Fin k0_t5_loop.trips, ∀ a, (k0_off1984 k0_t5) a + S1x1x1x16.size a ≤ S2x4x4x1024.size a
  k0_off1985_inb : ∀ k0_t5 : Fin k0_t5_loop.trips, ∀ a, (k0_off1985 k0_t5) a + S1x1x1x16.size a ≤ S4x4x4x1024.size a
  k0_off1986_inb : ∀ k0_t5 : Fin k0_t5_loop.trips, ∀ a, (k0_off1986 k0_t5) a + S1x1x1x16.size a ≤ S2x4x4x1024.size a
  k0_off1987_inb : ∀ k0_t5 : Fin k0_t5_loop.trips, ∀ a, (k0_off1987 k0_t5) a + S1x1x1x16.size a ≤ S4x4x4x1024.size a
  k0_off1988_inb : ∀ k0_t5 : Fin k0_t5_loop.trips, ∀ a, (k0_off1988 k0_t5) a + S1x1x1x16.size a ≤ S2x4x4x1024.size a
  k0_off1989_inb : ∀ k0_t5 : Fin k0_t5_loop.trips, ∀ a, (k0_off1989 k0_t5) a + S1x1x1x16.size a ≤ S4x4x4x1024.size a
  k0_off1990_inb : ∀ k0_t5 : Fin k0_t5_loop.trips, ∀ a, (k0_off1990 k0_t5) a + S1x1x1x16.size a ≤ S2x4x4x1024.size a
  k0_off1991_inb : ∀ k0_t5 : Fin k0_t5_loop.trips, ∀ a, (k0_off1991 k0_t5) a + S1x1x1x16.size a ≤ S4x4x4x1024.size a
  k0_off1992_inb : ∀ k0_t5 : Fin k0_t5_loop.trips, ∀ a, (k0_off1992 k0_t5) a + S1x1x1x16.size a ≤ S2x4x4x1024.size a
  k0_off1993_inb : ∀ k0_t5 : Fin k0_t5_loop.trips, ∀ a, (k0_off1993 k0_t5) a + S1x1x1x16.size a ≤ S4x4x4x1024.size a

class K0.R3.Facts₀ : Prop where
  k0_off1994_inb : ∀ k0_t5 : Fin k0_t5_loop.trips, ∀ a, (k0_off1994 k0_t5) a + S1x1x1x16.size a ≤ S2x4x4x1024.size a
  k0_off1995_inb : ∀ k0_t5 : Fin k0_t5_loop.trips, ∀ a, (k0_off1995 k0_t5) a + S1x1x1x16.size a ≤ S4x4x4x1024.size a
  k0_off1996_inb : ∀ k0_t5 : Fin k0_t5_loop.trips, ∀ a, (k0_off1996 k0_t5) a + S1x1x1x16.size a ≤ S2x4x4x1024.size a
  k0_off1997_inb : ∀ k0_t5 : Fin k0_t5_loop.trips, ∀ a, (k0_off1997 k0_t5) a + S1x1x1x16.size a ≤ S4x4x4x1024.size a
  k0_off1998_inb : ∀ k0_t5 : Fin k0_t5_loop.trips, ∀ a, (k0_off1998 k0_t5) a + S1x1x1x16.size a ≤ S2x4x4x1024.size a
  k0_off1999_inb : ∀ k0_t5 : Fin k0_t5_loop.trips, ∀ a, (k0_off1999 k0_t5) a + S1x1x1x16.size a ≤ S4x4x4x1024.size a
  k0_off2000_inb : ∀ k0_t5 : Fin k0_t5_loop.trips, ∀ a, (k0_off2000 k0_t5) a + S1x1x1x16.size a ≤ S2x4x4x1024.size a
  k0_off2001_inb : ∀ k0_t5 : Fin k0_t5_loop.trips, ∀ a, (k0_off2001 k0_t5) a + S1x1x1x16.size a ≤ S4x4x4x1024.size a
  k0_off2002_inb : ∀ k0_t5 : Fin k0_t5_loop.trips, ∀ a, (k0_off2002 k0_t5) a + S1x1x1x16.size a ≤ S2x4x4x1024.size a
  k0_off2003_inb : ∀ k0_t5 : Fin k0_t5_loop.trips, ∀ a, (k0_off2003 k0_t5) a + S1x1x1x16.size a ≤ S4x4x4x1024.size a
  k0_off2004_inb : ∀ k0_t5 : Fin k0_t5_loop.trips, ∀ a, (k0_off2004 k0_t5) a + S1x1x1x16.size a ≤ S2x4x4x1024.size a
  k0_off2005_inb : ∀ k0_t5 : Fin k0_t5_loop.trips, ∀ a, (k0_off2005 k0_t5) a + S1x1x1x16.size a ≤ S4x4x4x1024.size a
  k0_off2006_inb : ∀ k0_t5 : Fin k0_t5_loop.trips, ∀ a, (k0_off2006 k0_t5) a + S1x1x1x16.size a ≤ S2x4x4x1024.size a
  k0_off2007_inb : ∀ k0_t5 : Fin k0_t5_loop.trips, ∀ a, (k0_off2007 k0_t5) a + S1x1x1x16.size a ≤ S4x4x4x1024.size a
  k0_off2008_inb : ∀ k0_t5 : Fin k0_t5_loop.trips, ∀ a, (k0_off2008 k0_t5) a + S1x1x1x16.size a ≤ S2x4x4x1024.size a
  k0_off2009_inb : ∀ k0_t5 : Fin k0_t5_loop.trips, ∀ a, (k0_off2009 k0_t5) a + S1x1x1x16.size a ≤ S4x4x4x1024.size a
  k0_off2010_inb : ∀ k0_t5 : Fin k0_t5_loop.trips, ∀ a, (k0_off2010 k0_t5) a + S1x1x1x16.size a ≤ S2x4x4x1024.size a
  k0_off2011_inb : ∀ k0_t5 : Fin k0_t5_loop.trips, ∀ a, (k0_off2011 k0_t5) a + S1x1x1x16.size a ≤ S4x4x4x1024.size a
  k0_off2012_inb : ∀ k0_t5 : Fin k0_t5_loop.trips, ∀ a, (k0_off2012 k0_t5) a + S1x1x1x16.size a ≤ S2x4x4x1024.size a
  k0_off2013_inb : ∀ k0_t5 : Fin k0_t5_loop.trips, ∀ a, (k0_off2013 k0_t5) a + S1x1x1x16.size a ≤ S4x4x4x1024.size a
  k0_off2014_inb : ∀ k0_t5 : Fin k0_t5_loop.trips, ∀ a, (k0_off2014 k0_t5) a + S1x1x1x16.size a ≤ S2x4x4x1024.size a
  k0_off2015_inb : ∀ k0_t5 : Fin k0_t5_loop.trips, ∀ a, (k0_off2015 k0_t5) a + S1x1x1x16.size a ≤ S4x4x4x1024.size a
  k0_off2016_inb : ∀ k0_t5 : Fin k0_t5_loop.trips, ∀ a, (k0_off2016 k0_t5) a + S1x1x1x16.size a ≤ S2x4x4x1024.size a
  k0_off2017_inb : ∀ k0_t5 : Fin k0_t5_loop.trips, ∀ a, (k0_off2017 k0_t5) a + S1x1x1x16.size a ≤ S4x4x4x1024.size a
  k0_off2018_inb : ∀ k0_t5 : Fin k0_t5_loop.trips, ∀ a, (k0_off2018 k0_t5) a + S1x1x1x16.size a ≤ S2x4x4x1024.size a
  k0_off2019_inb : ∀ k0_t5 : Fin k0_t5_loop.trips, ∀ a, (k0_off2019 k0_t5) a + S1x1x1x16.size a ≤ S4x4x4x1024.size a
  k0_off2020_inb : ∀ k0_t5 : Fin k0_t5_loop.trips, ∀ a, (k0_off2020 k0_t5) a + S1x1x1x16.size a ≤ S2x4x4x1024.size a
  k0_off2021_inb : ∀ k0_t5 : Fin k0_t5_loop.trips, ∀ a, (k0_off2021 k0_t5) a + S1x1x1x16.size a ≤ S4x4x4x1024.size a
  k0_off2022_inb : ∀ k0_t5 : Fin k0_t5_loop.trips, ∀ a, (k0_off2022 k0_t5) a + S1x1x1x16.size a ≤ S2x4x4x1024.size a
  k0_off2023_inb : ∀ k0_t5 : Fin k0_t5_loop.trips, ∀ a, (k0_off2023 k0_t5) a + S1x1x1x16.size a ≤ S4x4x4x1024.size a
  k0_off2024_inb : ∀ k0_t5 : Fin k0_t5_loop.trips, ∀ a, (k0_off2024 k0_t5) a + S1x1x1x16.size a ≤ S2x4x4x1024.size a
  k0_off2025_inb : ∀ k0_t5 : Fin k0_t5_loop.trips, ∀ a, (k0_off2025 k0_t5) a + S1x1x1x16.size a ≤ S4x4x4x1024.size a
  k0_off2026_inb : ∀ k0_t5 : Fin k0_t5_loop.trips, ∀ a, (k0_off2026 k0_t5) a + S1x1x1x16.size a ≤ S2x4x4x1024.size a
  k0_off2027_inb : ∀ k0_t5 : Fin k0_t5_loop.trips, ∀ a, (k0_off2027 k0_t5) a + S1x1x1x16.size a ≤ S4x4x4x1024.size a
  k0_off2028_inb : ∀ k0_t5 : Fin k0_t5_loop.trips, ∀ a, (k0_off2028 k0_t5) a + S1x1x1x16.size a ≤ S2x4x4x1024.size a
  k0_off2029_inb : ∀ k0_t5 : Fin k0_t5_loop.trips, ∀ a, (k0_off2029 k0_t5) a + S1x1x1x16.size a ≤ S4x4x4x1024.size a
  k0_off2030_inb : ∀ k0_t5 : Fin k0_t5_loop.trips, ∀ a, (k0_off2030 k0_t5) a + S1x1x1x16.size a ≤ S2x4x4x1024.size a
  k0_off2031_inb : ∀ k0_t5 : Fin k0_t5_loop.trips, ∀ a, (k0_off2031 k0_t5) a + S1x1x1x16.size a ≤ S4x4x4x1024.size a
  k0_off2032_inb : ∀ k0_t5 : Fin k0_t5_loop.trips, ∀ a, (k0_off2032 k0_t5) a + S1x1x1x16.size a ≤ S2x4x4x1024.size a
  k0_off2033_inb : ∀ k0_t5 : Fin k0_t5_loop.trips, ∀ a, (k0_off2033 k0_t5) a + S1x1x1x16.size a ≤ S4x4x4x1024.size a
  k0_off2034_inb : ∀ k0_t5 : Fin k0_t5_loop.trips, ∀ a, (k0_off2034 k0_t5) a + S1x1x1x16.size a ≤ S2x4x4x1024.size a
  k0_off2035_inb : ∀ k0_t5 : Fin k0_t5_loop.trips, ∀ a, (k0_off2035 k0_t5) a + S1x1x1x16.size a ≤ S4x4x4x1024.size a
  k0_off2036_inb : ∀ k0_t5 : Fin k0_t5_loop.trips, ∀ a, (k0_off2036 k0_t5) a + S1x1x1x16.size a ≤ S2x4x4x1024.size a
  k0_off2037_inb : ∀ k0_t5 : Fin k0_t5_loop.trips, ∀ a, (k0_off2037 k0_t5) a + S1x1x1x16.size a ≤ S4x4x4x1024.size a
  k0_off2038_inb : ∀ k0_t5 : Fin k0_t5_loop.trips, ∀ a, (k0_off2038 k0_t5) a + S1x1x1x16.size a ≤ S2x4x4x1024.size a
  k0_off2039_inb : ∀ k0_t5 : Fin k0_t5_loop.trips, ∀ a, (k0_off2039 k0_t5) a + S1x1x1x16.size a ≤ S4x4x4x1024.size a
  k0_off2040_inb : ∀ k0_t5 : Fin k0_t5_loop.trips, ∀ a, (k0_off2040 k0_t5) a + S1x1x1x16.size a ≤ S2x4x4x1024.size a
  k0_off2041_inb : ∀ k0_t5 : Fin k0_t5_loop.trips, ∀ a, (k0_off2041 k0_t5) a + S1x1x1x16.size a ≤ S4x4x4x1024.size a
  k0_off2042_inb : ∀ k0_t5 : Fin k0_t5_loop.trips, ∀ a, (k0_off2042 k0_t5) a + S1x1x1x16.size a ≤ S2x4x4x1024.size a
  k0_off2043_inb : ∀ k0_t5 : Fin k0_t5_loop.trips, ∀ a, (k0_off2043 k0_t5) a + S1x1x1x16.size a ≤ S4x4x4x1024.size a
  k0_off2044_inb : ∀ k0_t5 : Fin k0_t5_loop.trips, ∀ a, (k0_off2044 k0_t5) a + S1x1x1x16.size a ≤ S2x4x4x1024.size a
  k0_off2045_inb : ∀ k0_t5 : Fin k0_t5_loop.trips, ∀ a, (k0_off2045 k0_t5) a + S1x1x1x16.size a ≤ S4x4x4x1024.size a
  k0_off2046_inb : ∀ k0_t5 : Fin k0_t5_loop.trips, ∀ a, (k0_off2046 k0_t5) a + S1x1x1x16.size a ≤ S2x4x4x1024.size a
  k0_off2047_inb : ∀ k0_t5 : Fin k0_t5_loop.trips, ∀ a, (k0_off2047 k0_t5) a + S1x1x1x16.size a ≤ S4x4x4x1024.size a
  k0_off2048_inb : ∀ k0_t5 : Fin k0_t5_loop.trips, ∀ a, (k0_off2048 k0_t5) a + S1x1x1x16.size a ≤ S2x4x4x1024.size a
  k0_off2049_inb : ∀ k0_t5 : Fin k0_t5_loop.trips, ∀ a, (k0_off2049 k0_t5) a + S1x1x1x16.size a ≤ S4x4x4x1024.size a
  k0_off2050_inb : ∀ k0_t5 : Fin k0_t5_loop.trips, ∀ a, (k0_off2050 k0_t5) a + S1x1x1x16.size a ≤ S2x4x4x1024.size a
  k0_off2051_inb : ∀ k0_t5 : Fin k0_t5_loop.trips, ∀ a, (k0_off2051 k0_t5) a + S1x1x1x16.size a ≤ S4x4x4x1024.size a
  k0_off2052_inb : ∀ k0_t5 : Fin k0_t5_loop.trips, ∀ a, (k0_off2052 k0_t5) a + S1x1x1x16.size a ≤ S2x4x4x1024.size a
  k0_off2053_inb : ∀ k0_t5 : Fin k0_t5_loop.trips, ∀ a, (k0_off2053 k0_t5) a + S1x1x1x16.size a ≤ S4x4x4x1024.size a
  k0_off2054_inb : ∀ k0_t5 : Fin k0_t5_loop.trips, ∀ a, (k0_off2054 k0_t5) a + S1x1x1x16.size a ≤ S2x4x4x1024.size a
  k0_off2055_inb : ∀ k0_t5 : Fin k0_t5_loop.trips, ∀ a, (k0_off2055 k0_t5) a + S1x1x1x16.size a ≤ S4x4x4x1024.size a
  k0_off2056_inb : ∀ k0_t5 : Fin k0_t5_loop.trips, ∀ a, (k0_off2056 k0_t5) a + S1x1x1x16.size a ≤ S2x4x4x1024.size a
  k0_off2057_inb : ∀ k0_t5 : Fin k0_t5_loop.trips, ∀ a, (k0_off2057 k0_t5) a + S1x1x1x16.size a ≤ S4x4x4x1024.size a
  k0_off2058_inb : ∀ k0_t5 : Fin k0_t5_loop.trips, ∀ a, (k0_off2058 k0_t5) a + S1x1x1x16.size a ≤ S2x4x4x1024.size a
  k0_off2059_inb : ∀ k0_t5 : Fin k0_t5_loop.trips, ∀ a, (k0_off2059 k0_t5) a + S1x1x16.size a ≤ S4x4x1024.size a
  k0_off2060_inb : ∀ k0_t5 : Fin k0_t5_loop.trips, ∀ a, (k0_off2060 k0_t5) a + S1x1x16.size a ≤ S4x4x1024.size a
  k0_off2061_inb : ∀ k0_t5 : Fin k0_t5_loop.trips, ∀ a, (k0_off2061 k0_t5) a + S1x1x16.size a ≤ S4x4x1024.size a
  k0_off2062_inb : ∀ k0_t5 : Fin k0_t5_loop.trips, ∀ a, (k0_off2062 k0_t5) a + S1x1x16.size a ≤ S4x4x1024.size a
  k0_off2063_inb : ∀ k0_t5 : Fin k0_t5_loop.trips, ∀ a, (k0_off2063 k0_t5) a + S1x1x16.size a ≤ S4x4x1024.size a
  k0_off2064_inb : ∀ k0_t5 : Fin k0_t5_loop.trips, ∀ a, (k0_off2064 k0_t5) a + S1x1x16.size a ≤ S4x4x1024.size a
  k0_off2065_inb : ∀ k0_t5 : Fin k0_t5_loop.trips, ∀ a, (k0_off2065 k0_t5) a + S1x1x16.size a ≤ S4x4x1024.size a
  k0_off2066_inb : ∀ k0_t5 : Fin k0_t5_loop.trips, ∀ a, (k0_off2066 k0_t5) a + S1x1x16.size a ≤ S4x4x1024.size a
  k0_off2067_inb : ∀ k0_t5 : Fin k0_t5_loop.trips, ∀ a, (k0_off2067 k0_t5) a + S1x1x16.size a ≤ S4x4x1024.size a
  k0_off2068_inb : ∀ k0_t5 : Fin k0_t5_loop.trips, ∀ a, (k0_off2068 k0_t5) a + S1x1x16.size a ≤ S4x4x1024.size a
  k0_off2069_inb : ∀ k0_t5 : Fin k0_t5_loop.trips, ∀ a, (k0_off2069 k0_t5) a + S1x1x16.size a ≤ S4x4x1024.size a
  k0_off2070_inb : ∀ k0_t5 : Fin k0_t5_loop.trips, ∀ a, (k0_off2070 k0_t5) a + S1x1x16.size a ≤ S4x4x1024.size a
  k0_off2071_inb : ∀ k0_t5 : Fin k0_t5_loop.trips, ∀ a, (k0_off2071 k0_t5) a + S1x1x16.size a ≤ S4x4x1024.size a
  k0_off2072_inb : ∀ k0_t5 : Fin k0_t5_loop.trips, ∀ a, (k0_off2072 k0_t5) a + S1x1x16.size a ≤ S4x4x1024.size a
  k0_off2073_inb : ∀ k0_t5 : Fin k0_t5_loop.trips, ∀ a, (k0_off2073 k0_t5) a + S1x1x16.size a ≤ S4x4x1024.size a
  k0_off2074_inb : ∀ k0_t5 : Fin k0_t5_loop.trips, ∀ a, (k0_off2074 k0_t5) a + S1x1x16.size a ≤ S4x4x1024.size a
  k0_off2075_inb : ∀ k0_t5 : Fin k0_t5_loop.trips, ∀ a, (k0_off2075 k0_t5) a + S1x1x16.size a ≤ S4x4x1024.size a
  k0_off2076_inb : ∀ k0_t5 : Fin k0_t5_loop.trips, ∀ a, (k0_off2076 k0_t5) a + S1x1x16.size a ≤ S4x4x1024.size a
  k0_off2077_inb : ∀ k0_t5 : Fin k0_t5_loop.trips, ∀ a, (k0_off2077 k0_t5) a + S1x1x16.size a ≤ S4x4x1024.size a
  k0_off2078_inb : ∀ k0_t5 : Fin k0_t5_loop.trips, ∀ a, (k0_off2078 k0_t5) a + S1x1x16.size a ≤ S4x4x1024.size a
  k0_off2079_inb : ∀ k0_t5 : Fin k0_t5_loop.trips, ∀ a, (k0_off2079 k0_t5) a + S1x1x16.size a ≤ S4x4x1024.size a
  k0_off2080_inb : ∀ k0_t5 : Fin k0_t5_loop.trips, ∀ a, (k0_off2080 k0_t5) a + S1x1x16.size a ≤ S4x4x1024.size a
  k0_off2081_inb : ∀ k0_t5 : Fin k0_t5_loop.trips, ∀ a, (k0_off2081 k0_t5) a + S1x1x16.size a ≤ S4x4x1024.size a
  k0_off2082_inb : ∀ k0_t5 : Fin k0_t5_loop.trips, ∀ a, (k0_off2082 k0_t5) a + S1x1x16.size a ≤ S4x4x1024.size a
  k0_off2083_inb : ∀ k0_t5 : Fin k0_t5_loop.trips, ∀ a, (k0_off2083 k0_t5) a + S1x1x16.size a ≤ S4x4x1024.size a
  k0_off2084_inb : ∀ k0_t5 : Fin k0_t5_loop.trips, ∀ a, (k0_off2084 k0_t5) a + S1x1x16.size a ≤ S4x4x1024.size a
  k0_off2085_inb : ∀ k0_t5 : Fin k0_t5_loop.trips, ∀ a, (k0_off2085 k0_t5) a + S1x1x16.size a ≤ S4x4x1024.size a
  k0_off2086_inb : ∀ k0_t5 : Fin k0_t5_loop.trips, ∀ a, (k0_off2086 k0_t5) a + S1x1x16.size a ≤ S4x4x1024.size a
  k0_off2087_inb : ∀ k0_t5 : Fin k0_t5_loop.trips, ∀ a, (k0_off2087 k0_t5) a + S1x1x16.size a ≤ S4x4x1024.size a
  k0_off2088_inb : ∀ k0_t5 : Fin k0_t5_loop.trips, ∀ a, (k0_off2088 k0_t5) a + S1x1x16.size a ≤ S4x4x1024.size a
  k0_off2089_inb : ∀ k0_t5 : Fin k0_t5_loop.trips, ∀ a, (k0_off2089 k0_t5) a + S1x1x16.size a ≤ S4x4x1024.size a
  k0_off2090_inb : ∀ k0_t5 : Fin k0_t5_loop.trips, ∀ a, (k0_off2090 k0_t5) a + S1x1x16.size a ≤ S4x4x1024.size a
  k0_off2091_inb : ∀ k0_t5 : Fin k0_t5_loop.trips, ∀ a, (k0_off2091 k0_t5) a + S1x1x1x16.size a ≤ S4x4x4x1024.size a
  k0_off2092_inb : ∀ k0_t5 : Fin k0_t5_loop.trips, ∀ a, (k0_off2092 k0_t5) a + S1x1x1x16.size a ≤ S2x4x4x1024.size a
  k0_off2093_inb : ∀ k0_t5 : Fin k0_t5_loop.trips, ∀ a, (k0_off2093 k0_t5) a + S1x1x1x16.size a ≤ S4x4x4x1024.size a
  k0_off2094_inb : ∀ k0_t5 : Fin k0_t5_loop.trips, ∀ a, (k0_off2094 k0_t5) a + S1x1x1x16.size a ≤ S2x4x4x1024.size a
  k0_off2095_inb : ∀ k0_t5 : Fin k0_t5_loop.trips, ∀ a, (k0_off2095 k0_t5) a + S1x1x1x16.size a ≤ S4x4x4x1024.size a
  k0_off2096_inb : ∀ k0_t5 : Fin k0_t5_loop.trips, ∀ a, (k0_off2096 k0_t5) a + S1x1x1x16.size a ≤ S2x4x4x1024.size a
  k0_off2097_inb : ∀ k0_t5 : Fin k0_t5_loop.trips, ∀ a, (k0_off2097 k0_t5) a + S1x1x1x16.size a ≤ S4x4x4x1024.size a
  k0_off2098_inb : ∀ k0_t5 : Fin k0_t5_loop.trips, ∀ a, (k0_off2098 k0_t5) a + S1x1x1x16.size a ≤ S2x4x4x1024.size a
  k0_off2099_inb : ∀ k0_t5 : Fin k0_t5_loop.trips, ∀ a, (k0_off2099 k0_t5) a + S1x1x1x16.size a ≤ S4x4x4x1024.size a
  k0_off2100_inb : ∀ k0_t5 : Fin k0_t5_loop.trips, ∀ a, (k0_off2100 k0_t5) a + S1x1x1x16.size a ≤ S2x4x4x1024.size a
  k0_off2101_inb : ∀ k0_t5 : Fin k0_t5_loop.trips, ∀ a, (k0_off2101 k0_t5) a + S1x1x1x16.size a ≤ S4x4x4x1024.size a
  k0_off2102_inb : ∀ k0_t5 : Fin k0_t5_loop.trips, ∀ a, (k0_off2102 k0_t5) a + S1x1x1x16.size a ≤ S2x4x4x1024.size a
  k0_off2103_inb : ∀ k0_t5 : Fin k0_t5_loop.trips, ∀ a, (k0_off2103 k0_t5) a + S1x1x1x16.size a ≤ S4x4x4x1024.size a
  k0_off2104_inb : ∀ k0_t5 : Fin k0_t5_loop.trips, ∀ a, (k0_off2104 k0_t5) a + S1x1x1x16.size a ≤ S2x4x4x1024.size a
  k0_off2105_inb : ∀ k0_t5 : Fin k0_t5_loop.trips, ∀ a, (k0_off2105 k0_t5) a + S1x1x1x16.size a ≤ S4x4x4x1024.size a
  k0_off2106_inb : ∀ k0_t5 : Fin k0_t5_loop.trips, ∀ a, (k0_off2106 k0_t5) a + S1x1x1x16.size a ≤ S2x4x4x1024.size a
  k0_off2107_inb : ∀ k0_t5 : Fin k0_t5_loop.trips, ∀ a, (k0_off2107 k0_t5) a + S1x1x1x16.size a ≤ S4x4x4x1024.size a
  k0_off2108_inb : ∀ k0_t5 : Fin k0_t5_loop.trips, ∀ a, (k0_off2108 k0_t5) a + S1x1x1x16.size a ≤ S2x4x4x1024.size a
  k0_off2109_inb : ∀ k0_t5 : Fin k0_t5_loop.trips, ∀ a, (k0_off2109 k0_t5) a + S1x1x1x16.size a ≤ S4x4x4x1024.size a
  k0_off2110_inb : ∀ k0_t5 : Fin k0_t5_loop.trips, ∀ a, (k0_off2110 k0_t5) a + S1x1x1x16.size a ≤ S2x4x4x1024.size a
  k0_off2111_inb : ∀ k0_t5 : Fin k0_t5_loop.trips, ∀ a, (k0_off2111 k0_t5) a + S1x1x1x16.size a ≤ S4x4x4x1024.size a
  k0_off2112_inb : ∀ k0_t5 : Fin k0_t5_loop.trips, ∀ a, (k0_off2112 k0_t5) a + S1x1x1x16.size a ≤ S2x4x4x1024.size a
  k0_off2113_inb : ∀ k0_t5 : Fin k0_t5_loop.trips, ∀ a, (k0_off2113 k0_t5) a + S1x1x1x16.size a ≤ S4x4x4x1024.size a
  k0_off2114_inb : ∀ k0_t5 : Fin k0_t5_loop.trips, ∀ a, (k0_off2114 k0_t5) a + S1x1x1x16.size a ≤ S2x4x4x1024.size a
  k0_off2115_inb : ∀ k0_t5 : Fin k0_t5_loop.trips, ∀ a, (k0_off2115 k0_t5) a + S1x1x1x16.size a ≤ S4x4x4x1024.size a
  k0_off2116_inb : ∀ k0_t5 : Fin k0_t5_loop.trips, ∀ a, (k0_off2116 k0_t5) a + S1x1x1x16.size a ≤ S2x4x4x1024.size a
  k0_off2117_inb : ∀ k0_t5 : Fin k0_t5_loop.trips, ∀ a, (k0_off2117 k0_t5) a + S1x1x1x16.size a ≤ S4x4x4x1024.size a
  k0_off2118_inb : ∀ k0_t5 : Fin k0_t5_loop.trips, ∀ a, (k0_off2118 k0_t5) a + S1x1x1x16.size a ≤ S2x4x4x1024.size a
  k0_off2119_inb : ∀ k0_t5 : Fin k0_t5_loop.trips, ∀ a, (k0_off2119 k0_t5) a + S1x1x1x16.size a ≤ S4x4x4x1024.size a
  k0_off2120_inb : ∀ k0_t5 : Fin k0_t5_loop.trips, ∀ a, (k0_off2120 k0_t5) a + S1x1x1x16.size a ≤ S2x4x4x1024.size a
  k0_off2121_inb : ∀ k0_t5 : Fin k0_t5_loop.trips, ∀ a, (k0_off2121 k0_t5) a + S1x1x1x16.size a ≤ S4x4x4x1024.size a
  k0_off2122_inb : ∀ k0_t5 : Fin k0_t5_loop.trips, ∀ a, (k0_off2122 k0_t5) a + S1x1x1x16.size a ≤ S2x4x4x1024.size a
  k0_off2123_inb : ∀ k0_t5 : Fin k0_t5_loop.trips, ∀ a, (k0_off2123 k0_t5) a + S1x1x1x16.size a ≤ S4x4x4x1024.size a
  k0_off2124_inb : ∀ k0_t5 : Fin k0_t5_loop.trips, ∀ a, (k0_off2124 k0_t5) a + S1x1x1x16.size a ≤ S2x4x4x1024.size a
  k0_off2125_inb : ∀ k0_t5 : Fin k0_t5_loop.trips, ∀ a, (k0_off2125 k0_t5) a + S1x1x1x16.size a ≤ S4x4x4x1024.size a
  k0_off2126_inb : ∀ k0_t5 : Fin k0_t5_loop.trips, ∀ a, (k0_off2126 k0_t5) a + S1x1x1x16.size a ≤ S2x4x4x1024.size a
  k0_off2127_inb : ∀ k0_t5 : Fin k0_t5_loop.trips, ∀ a, (k0_off2127 k0_t5) a + S1x1x1x16.size a ≤ S4x4x4x1024.size a
  k0_off2128_inb : ∀ k0_t5 : Fin k0_t5_loop.trips, ∀ a, (k0_off2128 k0_t5) a + S1x1x1x16.size a ≤ S2x4x4x1024.size a
  k0_off2129_inb : ∀ k0_t5 : Fin k0_t5_loop.trips, ∀ a, (k0_off2129 k0_t5) a + S1x1x1x16.size a ≤ S4x4x4x1024.size a
  k0_off2130_inb : ∀ k0_t5 : Fin k0_t5_loop.trips, ∀ a, (k0_off2130 k0_t5) a + S1x1x1x16.size a ≤ S2x4x4x1024.size a
  k0_off2131_inb : ∀ k0_t5 : Fin k0_t5_loop.trips, ∀ a, (k0_off2131 k0_t5) a + S1x1x1x16.size a ≤ S4x4x4x1024.size a
  k0_off2132_inb : ∀ k0_t5 : Fin k0_t5_loop.trips, ∀ a, (k0_off2132 k0_t5) a + S1x1x1x16.size a ≤ S2x4x4x1024.size a
  k0_off2133_inb : ∀ k0_t5 : Fin k0_t5_loop.trips, ∀ a, (k0_off2133 k0_t5) a + S1x1x1x16.size a ≤ S4x4x4x1024.size a
  k0_off2134_inb : ∀ k0_t5 : Fin k0_t5_loop.trips, ∀ a, (k0_off2134 k0_t5) a + S1x1x1x16.size a ≤ S2x4x4x1024.size a
  k0_off2135_inb : ∀ k0_t5 : Fin k0_t5_loop.trips, ∀ a, (k0_off2135 k0_t5) a + S1x1x1x16.size a ≤ S4x4x4x1024.size a
  k0_off2136_inb : ∀ k0_t5 : Fin k0_t5_loop.trips, ∀ a, (k0_off2136 k0_t5) a + S1x1x1x16.size a ≤ S2x4x4x1024.size a
  k0_off2137_inb : ∀ k0_t5 : Fin k0_t5_loop.trips, ∀ a, (k0_off2137 k0_t5) a + S1x1x1x16.size a ≤ S4x4x4x1024.size a
  k0_off2138_inb : ∀ k0_t5 : Fin k0_t5_loop.trips, ∀ a, (k0_off2138 k0_t5) a + S1x1x1x16.size a ≤ S2x4x4x1024.size a
  k0_off2139_inb : ∀ k0_t5 : Fin k0_t5_loop.trips, ∀ a, (k0_off2139 k0_t5) a + S1x1x1x16.size a ≤ S4x4x4x1024.size a
  k0_off2140_inb : ∀ k0_t5 : Fin k0_t5_loop.trips, ∀ a, (k0_off2140 k0_t5) a + S1x1x1x16.size a ≤ S2x4x4x1024.size a
  k0_off2141_inb : ∀ k0_t5 : Fin k0_t5_loop.trips, ∀ a, (k0_off2141 k0_t5) a + S1x1x1x16.size a ≤ S4x4x4x1024.size a
  k0_off2142_inb : ∀ k0_t5 : Fin k0_t5_loop.trips, ∀ a, (k0_off2142 k0_t5) a + S1x1x1x16.size a ≤ S2x4x4x1024.size a
  k0_off2143_inb : ∀ k0_t5 : Fin k0_t5_loop.trips, ∀ a, (k0_off2143 k0_t5) a + S1x1x1x16.size a ≤ S4x4x4x1024.size a
  k0_off2144_inb : ∀ k0_t5 : Fin k0_t5_loop.trips, ∀ a, (k0_off2144 k0_t5) a + S1x1x1x16.size a ≤ S2x4x4x1024.size a
  k0_off2145_inb : ∀ k0_t5 : Fin k0_t5_loop.trips, ∀ a, (k0_off2145 k0_t5) a + S1x1x1x16.size a ≤ S4x4x4x1024.size a
  k0_off2146_inb : ∀ k0_t5 : Fin k0_t5_loop.trips, ∀ a, (k0_off2146 k0_t5) a + S1x1x1x16.size a ≤ S2x4x4x1024.size a
  k0_off2147_inb : ∀ k0_t5 : Fin k0_t5_loop.trips, ∀ a, (k0_off2147 k0_t5) a + S1x1x1x16.size a ≤ S4x4x4x1024.size a
  k0_off2148_inb : ∀ k0_t5 : Fin k0_t5_loop.trips, ∀ a, (k0_off2148 k0_t5) a + S1x1x1x16.size a ≤ S2x4x4x1024.size a
  k0_off2149_inb : ∀ k0_t5 : Fin k0_t5_loop.trips, ∀ a, (k0_off2149 k0_t5) a + S1x1x1x16.size a ≤ S4x4x4x1024.size a
  k0_off2150_inb : ∀ k0_t5 : Fin k0_t5_loop.trips, ∀ a, (k0_off2150 k0_t5) a + S1x1x1x16.size a ≤ S2x4x4x1024.size a
  k0_off2151_inb : ∀ k0_t5 : Fin k0_t5_loop.trips, ∀ a, (k0_off2151 k0_t5) a + S1x1x1x16.size a ≤ S4x4x4x1024.size a
  k0_off2152_inb : ∀ k0_t5 : Fin k0_t5_loop.trips, ∀ a, (k0_off2152 k0_t5) a + S1x1x1x16.size a ≤ S2x4x4x1024.size a
  k0_off2153_inb : ∀ k0_t5 : Fin k0_t5_loop.trips, ∀ a, (k0_off2153 k0_t5) a + S1x1x1x16.size a ≤ S4x4x4x1024.size a
  k0_off2154_inb : ∀ k0_t5 : Fin k0_t5_loop.trips, ∀ a, (k0_off2154 k0_t5) a + S1x1x1x16.size a ≤ S2x4x4x1024.size a
  k0_off2155_inb : ∀ k0_t5 : Fin k0_t5_loop.trips, ∀ a, (k0_off2155 k0_t5) a + S1x1x1x16.size a ≤ S4x4x4x1024.size a
  k0_off2156_inb : ∀ k0_t5 : Fin k0_t5_loop.trips, ∀ a, (k0_off2156 k0_t5) a + S1x1x1x16.size a ≤ S2x4x4x1024.size a
  k0_off2157_inb : ∀ k0_t5 : Fin k0_t5_loop.trips, ∀ a, (k0_off2157 k0_t5) a + S1x1x1x16.size a ≤ S4x4x4x1024.size a
  k0_off2158_inb : ∀ k0_t5 : Fin k0_t5_loop.trips, ∀ a, (k0_off2158 k0_t5) a + S1x1x1x16.size a ≤ S2x4x4x1024.size a
  k0_off2159_inb : ∀ k0_t5 : Fin k0_t5_loop.trips, ∀ a, (k0_off2159 k0_t5) a + S1x1x1x16.size a ≤ S4x4x4x1024.size a
  k0_off2160_inb : ∀ k0_t5 : Fin k0_t5_loop.trips, ∀ a, (k0_off2160 k0_t5) a + S1x1x1x16.size a ≤ S2x4x4x1024.size a
  k0_off2161_inb : ∀ k0_t5 : Fin k0_t5_loop.trips, ∀ a, (k0_off2161 k0_t5) a + S1x1x1x16.size a ≤ S4x4x4x1024.size a
  k0_off2162_inb : ∀ k0_t5 : Fin k0_t5_loop.trips, ∀ a, (k0_off2162 k0_t5) a + S1x1x1x16.size a ≤ S2x4x4x1024.size a
  k0_off2163_inb : ∀ k0_t5 : Fin k0_t5_loop.trips, ∀ a, (k0_off2163 k0_t5) a + S1x1x1x16.size a ≤ S4x4x4x1024.size a
  k0_off2164_inb : ∀ k0_t5 : Fin k0_t5_loop.trips, ∀ a, (k0_off2164 k0_t5) a + S1x1x1x16.size a ≤ S2x4x4x1024.size a
  k0_off2165_inb : ∀ k0_t5 : Fin k0_t5_loop.trips, ∀ a, (k0_off2165 k0_t5) a + S1x1x1x16.size a ≤ S4x4x4x1024.size a
  k0_off2166_inb : ∀ k0_t5 : Fin k0_t5_loop.trips, ∀ a, (k0_off2166 k0_t5) a + S1x1x1x16.size a ≤ S2x4x4x1024.size a
  k0_off2167_inb : ∀ k0_t5 : Fin k0_t5_loop.trips, ∀ a, (k0_off2167 k0_t5) a + S1x1x1x16.size a ≤ S4x4x4x1024.size a
  k0_off2168_inb : ∀ k0_t5 : Fin k0_t5_loop.trips, ∀ a, (k0_off2168 k0_t5) a + S1x1x1x16.size a ≤ S2x4x4x1024.size a
  k0_off2169_inb : ∀ k0_t5 : Fin k0_t5_loop.trips, ∀ a, (k0_off2169 k0_t5) a + S1x1x1x16.size a ≤ S4x4x4x1024.size a
  k0_off2170_inb : ∀ k0_t5 : Fin k0_t5_loop.trips, ∀ a, (k0_off2170 k0_t5) a + S1x1x1x16.size a ≤ S2x4x4x1024.size a
  k0_off2171_inb : ∀ k0_t5 : Fin k0_t5_loop.trips, ∀ a, (k0_off2171 k0_t5) a + S1x1x1x16.size a ≤ S4x4x4x1024.size a
  k0_off2172_inb : ∀ k0_t5 : Fin k0_t5_loop.trips, ∀ a, (k0_off2172 k0_t5) a + S1x1x1x16.size a ≤ S2x4x4x1024.size a
  k0_off2173_inb : ∀ k0_t5 : Fin k0_t5_loop.trips, ∀ a, (k0_off2173 k0_t5) a + S1x1x1x16.size a ≤ S4x4x4x1024.size a
  k0_off2174_inb : ∀ k0_t5 : Fin k0_t5_loop.trips, ∀ a, (k0_off2174 k0_t5) a + S1x1x1x16.size a ≤ S2x4x4x1024.size a
  k0_off2175_inb : ∀ k0_t5 : Fin k0_t5_loop.trips, ∀ a, (k0_off2175 k0_t5) a + S1x1x1x16.size a ≤ S4x4x4x1024.size a
  k0_off2176_inb : ∀ k0_t5 : Fin k0_t5_loop.trips, ∀ a, (k0_off2176 k0_t5) a + S1x1x1x16.size a ≤ S2x4x4x1024.size a
  k0_off2177_inb : ∀ k0_t5 : Fin k0_t5_loop.trips, ∀ a, (k0_off2177 k0_t5) a + S1x1x1x16.size a ≤ S4x4x4x1024.size a
  k0_off2178_inb : ∀ k0_t5 : Fin k0_t5_loop.trips, ∀ a, (k0_off2178 k0_t5) a + S1x1x1x16.size a ≤ S2x4x4x1024.size a
  k0_off2179_inb : ∀ k0_t5 : Fin k0_t5_loop.trips, ∀ a, (k0_off2179 k0_t5) a + S1x1x1x16.size a ≤ S4x4x4x1024.size a
  k0_off2180_inb : ∀ k0_t5 : Fin k0_t5_loop.trips, ∀ a, (k0_off2180 k0_t5) a + S1x1x1x16.size a ≤ S2x4x4x1024.size a
  k0_off2181_inb : ∀ k0_t5 : Fin k0_t5_loop.trips, ∀ a, (k0_off2181 k0_t5) a + S1x1x1x16.size a ≤ S4x4x4x1024.size a
  k0_off2182_inb : ∀ k0_t5 : Fin k0_t5_loop.trips, ∀ a, (k0_off2182 k0_t5) a + S1x1x1x16.size a ≤ S2x4x4x1024.size a
  k0_off2183_inb : ∀ k0_t5 : Fin k0_t5_loop.trips, ∀ a, (k0_off2183 k0_t5) a + S1x1x1x16.size a ≤ S4x4x4x1024.size a
  k0_off2184_inb : ∀ k0_t5 : Fin k0_t5_loop.trips, ∀ a, (k0_off2184 k0_t5) a + S1x1x1x16.size a ≤ S2x4x4x1024.size a
  k0_off2185_inb : ∀ k0_t5 : Fin k0_t5_loop.trips, ∀ a, (k0_off2185 k0_t5) a + S1x1x1x16.size a ≤ S4x4x4x1024.size a
  k0_off2186_inb : ∀ k0_t5 : Fin k0_t5_loop.trips, ∀ a, (k0_off2186 k0_t5) a + S1x1x1x16.size a ≤ S2x4x4x1024.size a
  k0_off2187_inb : ∀ k0_t5 : Fin k0_t5_loop.trips, ∀ a, (k0_off2187 k0_t5) a + S1x1x1x16.size a ≤ S4x4x4x1024.size a
  k0_off2188_inb : ∀ k0_t5 : Fin k0_t5_loop.trips, ∀ a, (k0_off2188 k0_t5) a + S1x1x1x16.size a ≤ S2x4x4x1024.size a
  k0_off2189_inb : ∀ k0_t5 : Fin k0_t5_loop.trips, ∀ a, (k0_off2189 k0_t5) a + S1x1x1x16.size a ≤ S4x4x4x1024.size a
  k0_off2190_inb : ∀ k0_t5 : Fin k0_t5_loop.trips, ∀ a, (k0_off2190 k0_t5) a + S1x1x1x16.size a ≤ S2x4x4x1024.size a
  k0_off2191_inb : ∀ k0_t5 : Fin k0_t5_loop.trips, ∀ a, (k0_off2191 k0_t5) a + S1x1x1x16.size a ≤ S4x4x4x1024.size a
  k0_off2192_inb : ∀ k0_t5 : Fin k0_t5_loop.trips, ∀ a, (k0_off2192 k0_t5) a + S1x1x1x16.size a ≤ S2x4x4x1024.size a
  k0_off2193_inb : ∀ k0_t5 : Fin k0_t5_loop.trips, ∀ a, (k0_off2193 k0_t5) a + S1x1x1x16.size a ≤ S4x4x4x1024.size a
  k0_off2194_inb : ∀ k0_t5 : Fin k0_t5_loop.trips, ∀ a, (k0_off2194 k0_t5) a + S1x1x1x16.size a ≤ S2x4x4x1024.size a
  k0_off2195_inb : ∀ k0_t5 : Fin k0_t5_loop.trips, ∀ a, (k0_off2195 k0_t5) a + S1x1x1x16.size a ≤ S4x4x4x1024.size a
  k0_off2196_inb : ∀ k0_t5 : Fin k0_t5_loop.trips, ∀ a, (k0_off2196 k0_t5) a + S1x1x1x16.size a ≤ S2x4x4x1024.size a
  k0_off2197_inb : ∀ k0_t5 : Fin k0_t5_loop.trips, ∀ a, (k0_off2197 k0_t5) a + S1x1x1x16.size a ≤ S4x4x4x1024.size a
  k0_off2198_inb : ∀ k0_t5 : Fin k0_t5_loop.trips, ∀ a, (k0_off2198 k0_t5) a + S1x1x1x16.size a ≤ S2x4x4x1024.size a
  k0_off2199_inb : ∀ k0_t5 : Fin k0_t5_loop.trips, ∀ a, (k0_off2199 k0_t5) a + S1x1x1x16.size a ≤ S4x4x4x1024.size a
  k0_off2200_inb : ∀ k0_t5 : Fin k0_t5_loop.trips, ∀ a, (k0_off2200 k0_t5) a + S1x1x1x16.size a ≤ S2x4x4x1024.size a
  k0_off2201_inb : ∀ k0_t5 : Fin k0_t5_loop.trips, ∀ a, (k0_off2201 k0_t5) a + S1x1x1x16.size a ≤ S4x4x4x1024.size a
  k0_off2202_inb : ∀ k0_t5 : Fin k0_t5_loop.trips, ∀ a, (k0_off2202 k0_t5) a + S1x1x1x16.size a ≤ S2x4x4x1024.size a
  k0_off2203_inb : ∀ k0_t5 : Fin k0_t5_loop.trips, ∀ a, (k0_off2203 k0_t5) a + S1x1x1x16.size a ≤ S4x4x4x1024.size a
  k0_off2204_inb : ∀ k0_t5 : Fin k0_t5_loop.trips, ∀ a, (k0_off2204 k0_t5) a + S1x1x1x16.size a ≤ S2x4x4x1024.size a
  k0_off2205_inb : ∀ k0_t5 : Fin k0_t5_loop.trips, ∀ a, (k0_off2205 k0_t5) a + S1x1x1x16.size a ≤ S4x4x4x1024.size a
  k0_off2206_inb : ∀ k0_t5 : Fin k0_t5_loop.trips, ∀ a, (k0_off2206 k0_t5) a + S1x1x1x16.size a ≤ S2x4x4x1024.size a
  k0_off2207_inb : ∀ k0_t5 : Fin k0_t5_loop.trips, ∀ a, (k0_off2207 k0_t5) a + S1x1x1x16.size a ≤ S4x4x4x1024.size a
  k0_off2208_inb : ∀ k0_t5 : Fin k0_t5_loop.trips, ∀ a, (k0_off2208 k0_t5) a + S1x1x1x16.size a ≤ S2x4x4x1024.size a
  k0_off2209_inb : ∀ k0_t5 : Fin k0_t5_loop.trips, ∀ a, (k0_off2209 k0_t5) a + S1x1x1x16.size a ≤ S4x4x4x1024.size a
  k0_off2210_inb : ∀ k0_t5 : Fin k0_t5_loop.trips, ∀ a, (k0_off2210 k0_t5) a + S1x1x1x16.size a ≤ S2x4x4x1024.size a
  k0_off2211_inb : ∀ k0_t5 : Fin k0_t5_loop.trips, ∀ a, (k0_off2211 k0_t5) a + S1x1x1x16.size a ≤ S4x4x4x1024.size a
  k0_off2212_inb : ∀ k0_t5 : Fin k0_t5_loop.trips, ∀ a, (k0_off2212 k0_t5) a + S1x1x1x16.size a ≤ S2x4x4x1024.size a
  k0_off2213_inb : ∀ k0_t5 : Fin k0_t5_loop.trips, ∀ a, (k0_off2213 k0_t5) a + S1x1x1x16.size a ≤ S4x4x4x1024.size a
  k0_off2214_inb : ∀ k0_t5 : Fin k0_t5_loop.trips, ∀ a, (k0_off2214 k0_t5) a + S1x1x1x16.size a ≤ S2x4x4x1024.size a
  k0_off2215_inb : ∀ k0_t5 : Fin k0_t5_loop.trips, ∀ a, (k0_off2215 k0_t5) a + S1x1x1x16.size a ≤ S4x4x4x1024.size a
  k0_off2216_inb : ∀ k0_t5 : Fin k0_t5_loop.trips, ∀ a, (k0_off2216 k0_t5) a + S1x1x1x16.size a ≤ S2x4x4x1024.size a
  k0_off2217_inb : ∀ k0_t5 : Fin k0_t5_loop.trips, ∀ a, (k0_off2217 k0_t5) a + S1x1x1x16.size a ≤ S4x4x4x1024.size a
  k0_off2218_inb : ∀ k0_t5 : Fin k0_t5_loop.trips, ∀ a, (k0_off2218 k0_t5) a + S1x1x1x16.size a ≤ S2x4x4x1024.size a
  k0_off2219_inb : ∀ k0_t5 : Fin k0_t5_loop.trips, ∀ a, (k0_off2219 k0_t5) a + S1x1x1x16.size a ≤ S4x4x4x1024.size a
  k0_off2220_inb : ∀ k0_t5 : Fin k0_t5_loop.trips, ∀ a, (k0_off2220 k0_t5) a + S1x1x1x16.size a ≤ S2x4x4x1024.size a
  k0_off2221_inb : ∀ k0_t5 : Fin k0_t5_loop.trips, ∀ a, (k0_off2221 k0_t5) a + S1x1x1x16.size a ≤ S4x4x4x1024.size a
  k0_off2222_inb : ∀ k0_t5 : Fin k0_t5_loop.trips, ∀ a, (k0_off2222 k0_t5) a + S1x1x1x16.size a ≤ S2x4x4x1024.size a
  k0_off2223_inb : ∀ k0_t5 : Fin k0_t5_loop.trips, ∀ a, (k0_off2223 k0_t5) a + S1x1x1x16.size a ≤ S4x4x4x1024.size a
  k0_off2224_inb : ∀ k0_t5 : Fin k0_t5_loop.trips, ∀ a, (k0_off2224 k0_t5) a + S1x1x1x16.size a ≤ S2x4x4x1024.size a
  k0_off2225_inb : ∀ k0_t5 : Fin k0_t5_loop.trips, ∀ a, (k0_off2225 k0_t5) a + S1x1x1x16.size a ≤ S4x4x4x1024.size a
  k0_off2226_inb : ∀ k0_t5 : Fin k0_t5_loop.trips, ∀ a, (k0_off2226 k0_t5) a + S1x1x1x16.size a ≤ S2x4x4x1024.size a
  k0_off2227_inb : ∀ k0_t5 : Fin k0_t5_loop.trips, ∀ a, (k0_off2227 k0_t5) a + S1x1x1x16.size a ≤ S4x4x4x1024.size a
  k0_off2228_inb : ∀ k0_t5 : Fin k0_t5_loop.trips, ∀ a, (k0_off2228 k0_t5) a + S1x1x1x16.size a ≤ S2x4x4x1024.size a
  k0_off2229_inb : ∀ k0_t5 : Fin k0_t5_loop.trips, ∀ a, (k0_off2229 k0_t5) a + S1x1x1x16.size a ≤ S4x4x4x1024.size a
  k0_off2230_inb : ∀ k0_t5 : Fin k0_t5_loop.trips, ∀ a, (k0_off2230 k0_t5) a + S1x1x1x16.size a ≤ S2x4x4x1024.size a
  k0_off2231_inb : ∀ k0_t5 : Fin k0_t5_loop.trips, ∀ a, (k0_off2231 k0_t5) a + S1x1x1x16.size a ≤ S4x4x4x1024.size a
  k0_off2232_inb : ∀ k0_t5 : Fin k0_t5_loop.trips, ∀ a, (k0_off2232 k0_t5) a + S1x1x1x16.size a ≤ S2x4x4x1024.size a
  k0_off2233_inb : ∀ k0_t5 : Fin k0_t5_loop.trips, ∀ a, (k0_off2233 k0_t5) a + S1x1x1x16.size a ≤ S4x4x4x1024.size a
  k0_off2234_inb : ∀ k0_t5 : Fin k0_t5_loop.trips, ∀ a, (k0_off2234 k0_t5) a + S1x1x1x16.size a ≤ S2x4x4x1024.size a
  k0_off2235_inb : ∀ k0_t5 : Fin k0_t5_loop.trips, ∀ a, (k0_off2235 k0_t5) a + S1x1x1x16.size a ≤ S4x4x4x1024.size a
  k0_off2236_inb : ∀ k0_t5 : Fin k0_t5_loop.trips, ∀ a, (k0_off2236 k0_t5) a + S1x1x1x16.size a ≤ S2x4x4x1024.size a
  k0_off2237_inb : ∀ k0_t5 : Fin k0_t5_loop.trips, ∀ a, (k0_off2237 k0_t5) a + S1x1x1x16.size a ≤ S4x4x4x1024.size a
  k0_off2238_inb : ∀ k0_t5 : Fin k0_t5_loop.trips, ∀ a, (k0_off2238 k0_t5) a + S1x1x1x16.size a ≤ S2x4x4x1024.size a
  k0_off2239_inb : ∀ k0_t5 : Fin k0_t5_loop.trips, ∀ a, (k0_off2239 k0_t5) a + S1x1x1x16.size a ≤ S4x4x4x1024.size a
  k0_off2240_inb : ∀ k0_t5 : Fin k0_t5_loop.trips, ∀ a, (k0_off2240 k0_t5) a + S1x1x1x16.size a ≤ S2x4x4x1024.size a
  k0_off2241_inb : ∀ k0_t5 : Fin k0_t5_loop.trips, ∀ a, (k0_off2241 k0_t5) a + S1x1x1x16.size a ≤ S4x4x4x1024.size a
  k0_off2242_inb : ∀ k0_t5 : Fin k0_t5_loop.trips, ∀ a, (k0_off2242 k0_t5) a + S1x1x1x16.size a ≤ S2x4x4x1024.size a
  k0_off2243_inb : ∀ k0_t5 : Fin k0_t5_loop.trips, ∀ a, (k0_off2243 k0_t5) a + S1x1x1x16.size a ≤ S4x4x4x1024.size a
  k0_off2244_inb : ∀ k0_t5 : Fin k0_t5_loop.trips, ∀ a, (k0_off2244 k0_t5) a + S1x1x1x16.size a ≤ S2x4x4x1024.size a
  k0_off2245_inb : ∀ k0_t5 : Fin k0_t5_loop.trips, ∀ a, (k0_off2245 k0_t5) a + S1x1x1x16.size a ≤ S4x4x4x1024.size a
  k0_off2246_inb : ∀ k0_t5 : Fin k0_t5_loop.trips, ∀ a, (k0_off2246 k0_t5) a + S1x1x1x16.size a ≤ S2x4x4x1024.size a
  k0_off2247_inb : ∀ k0_t5 : Fin k0_t5_loop.trips, ∀ a, (k0_off2247 k0_t5) a + S1x1x1x16.size a ≤ S4x4x4x1024.size a
  k0_off2248_inb : ∀ k0_t5 : Fin k0_t5_loop.trips, ∀ a, (k0_off2248 k0_t5) a + S1x1x1x16.size a ≤ S2x4x4x1024.size a
  k0_off2249_inb : ∀ k0_t5 : Fin k0_t5_loop.trips, ∀ a, (k0_off2249 k0_t5) a + S1x1x1x16.size a ≤ S4x4x4x1024.size a
  k0_off2250_inb : ∀ k0_t5 : Fin k0_t5_loop.trips, ∀ a, (k0_off2250 k0_t5) a + S1x1x1x16.size a ≤ S2x4x4x1024.size a
  k0_off2251_inb : ∀ k0_t5 : Fin k0_t5_loop.trips, ∀ a, (k0_off2251 k0_t5) a + S1x1x1x16.size a ≤ S4x4x4x1024.size a
  k0_off2252_inb : ∀ k0_t5 : Fin k0_t5_loop.trips, ∀ a, (k0_off2252 k0_t5) a + S1x1x1x16.size a ≤ S2x4x4x1024.size a
  k0_off2253_inb : ∀ k0_t5 : Fin k0_t5_loop.trips, ∀ a, (k0_off2253 k0_t5) a + S1x1x1x16.size a ≤ S4x4x4x1024.size a
  k0_off2254_inb : ∀ k0_t5 : Fin k0_t5_loop.trips, ∀ a, (k0_off2254 k0_t5) a + S1x1x1x16.size a ≤ S2x4x4x1024.size a
  k0_off2255_inb : ∀ k0_t5 : Fin k0_t5_loop.trips, ∀ a, (k0_off2255 k0_t5) a + S1x1x1x16.size a ≤ S4x4x4x1024.size a
  k0_off2256_inb : ∀ k0_t5 : Fin k0_t5_loop.trips, ∀ a, (k0_off2256 k0_t5) a + S1x1x1x16.size a ≤ S2x4x4x1024.size a
  k0_off2257_inb : ∀ k0_t5 : Fin k0_t5_loop.trips, ∀ a, (k0_off2257 k0_t5) a + S1x1x1x16.size a ≤ S4x4x4x1024.size a
  k0_off2258_inb : ∀ k0_t5 : Fin k0_t5_loop.trips, ∀ a, (k0_off2258 k0_t5) a + S1x1x1x16.size a ≤ S2x4x4x1024.size a
  k0_off2259_inb : ∀ k0_t5 : Fin k0_t5_loop.trips, ∀ a, (k0_off2259 k0_t5) a + S1x1x1x16.size a ≤ S4x4x4x1024.size a
  k0_off2260_inb : ∀ k0_t5 : Fin k0_t5_loop.trips, ∀ a, (k0_off2260 k0_t5) a + S1x1x1x16.size a ≤ S2x4x4x1024.size a
  k0_off2261_inb : ∀ k0_t5 : Fin k0_t5_loop.trips, ∀ a, (k0_off2261 k0_t5) a + S1x1x1x16.size a ≤ S4x4x4x1024.size a
  k0_off2262_inb : ∀ k0_t5 : Fin k0_t5_loop.trips, ∀ a, (k0_off2262 k0_t5) a + S1x1x1x16.size a ≤ S2x4x4x1024.size a
  k0_off2263_inb : ∀ k0_t5 : Fin k0_t5_loop.trips, ∀ a, (k0_off2263 k0_t5) a + S1x1x1x16.size a ≤ S4x4x4x1024.size a
  k0_off2264_inb : ∀ k0_t5 : Fin k0_t5_loop.trips, ∀ a, (k0_off2264 k0_t5) a + S1x1x1x16.size a ≤ S2x4x4x1024.size a
  k0_off2265_inb : ∀ k0_t5 : Fin k0_t5_loop.trips, ∀ a, (k0_off2265 k0_t5) a + S1x1x1x16.size a ≤ S4x4x4x1024.size a
  k0_off2266_inb : ∀ k0_t5 : Fin k0_t5_loop.trips, ∀ a, (k0_off2266 k0_t5) a + S1x1x1x16.size a ≤ S2x4x4x1024.size a
  k0_off2267_inb : ∀ k0_t5 : Fin k0_t5_loop.trips, ∀ a, (k0_off2267 k0_t5) a + S1x1x1x16.size a ≤ S4x4x4x1024.size a
  k0_off2268_inb : ∀ k0_t5 : Fin k0_t5_loop.trips, ∀ a, (k0_off2268 k0_t5) a + S1x1x1x16.size a ≤ S2x4x4x1024.size a
  k0_off2269_inb : ∀ k0_t5 : Fin k0_t5_loop.trips, ∀ a, (k0_off2269 k0_t5) a + S1x1x1x16.size a ≤ S4x4x4x1024.size a
  k0_off2270_inb : ∀ k0_t5 : Fin k0_t5_loop.trips, ∀ a, (k0_off2270 k0_t5) a + S1x1x1x16.size a ≤ S2x4x4x1024.size a
  k0_off2271_inb : ∀ k0_t5 : Fin k0_t5_loop.trips, ∀ a, (k0_off2271 k0_t5) a + S1x1x1x16.size a ≤ S4x4x4x1024.size a
  k0_off2272_inb : ∀ k0_t5 : Fin k0_t5_loop.trips, ∀ a, (k0_off2272 k0_t5) a + S1x1x1x16.size a ≤ S2x4x4x1024.size a
  k0_off2273_inb : ∀ k0_t5 : Fin k0_t5_loop.trips, ∀ a, (k0_off2273 k0_t5) a + S1x1x1x16.size a ≤ S4x4x4x1024.size a
  k0_off2274_inb : ∀ k0_t5 : Fin k0_t5_loop.trips, ∀ a, (k0_off2274 k0_t5) a + S1x1x1x16.size a ≤ S2x4x4x1024.size a
  k0_off2275_inb : ∀ k0_t5 : Fin k0_t5_loop.trips, ∀ a, (k0_off2275 k0_t5) a + S1x1x1x16.size a ≤ S4x4x4x1024.size a
  k0_off2276_inb : ∀ k0_t5 : Fin k0_t5_loop.trips, ∀ a, (k0_off2276 k0_t5) a + S1x1x1x16.size a ≤ S2x4x4x1024.size a
  k0_off2277_inb : ∀ k0_t5 : Fin k0_t5_loop.trips, ∀ a, (k0_off2277 k0_t5) a + S1x1x1x16.size a ≤ S4x4x4x1024.size a
  k0_off2278_inb : ∀ k0_t5 : Fin k0_t5_loop.trips, ∀ a, (k0_off2278 k0_t5) a + S1x1x1x16.size a ≤ S2x4x4x1024.size a
  k0_off2279_inb : ∀ k0_t5 : Fin k0_t5_loop.trips, ∀ a, (k0_off2279 k0_t5) a + S1x1x1x16.size a ≤ S4x4x4x1024.size a
  k0_off2280_inb : ∀ k0_t5 : Fin k0_t5_loop.trips, ∀ a, (k0_off2280 k0_t5) a + S1x1x1x16.size a ≤ S2x4x4x1024.size a
  k0_off2281_inb : ∀ k0_t5 : Fin k0_t5_loop.trips, ∀ a, (k0_off2281 k0_t5) a + S1x1x1x16.size a ≤ S4x4x4x1024.size a
  k0_off2282_inb : ∀ k0_t5 : Fin k0_t5_loop.trips, ∀ a, (k0_off2282 k0_t5) a + S1x1x1x16.size a ≤ S2x4x4x1024.size a
  k0_off2283_inb : ∀ k0_t5 : Fin k0_t5_loop.trips, ∀ a, (k0_off2283 k0_t5) a + S1x1x1x16.size a ≤ S4x4x4x1024.size a
  k0_off2284_inb : ∀ k0_t5 : Fin k0_t5_loop.trips, ∀ a, (k0_off2284 k0_t5) a + S1x1x1x16.size a ≤ S2x4x4x1024.size a
  k0_off2285_inb : ∀ k0_t5 : Fin k0_t5_loop.trips, ∀ a, (k0_off2285 k0_t5) a + S1x1x1x16.size a ≤ S4x4x4x1024.size a
  k0_off2286_inb : ∀ k0_t5 : Fin k0_t5_loop.trips, ∀ a, (k0_off2286 k0_t5) a + S1x1x1x16.size a ≤ S2x4x4x1024.size a
  k0_off2287_inb : ∀ k0_t5 : Fin k0_t5_loop.trips, ∀ a, (k0_off2287 k0_t5) a + S1x1x1x16.size a ≤ S4x4x4x1024.size a
  k0_off2288_inb : ∀ k0_t5 : Fin k0_t5_loop.trips, ∀ a, (k0_off2288 k0_t5) a + S1x1x1x16.size a ≤ S2x4x4x1024.size a
  k0_off2289_inb : ∀ k0_t5 : Fin k0_t5_loop.trips, ∀ a, (k0_off2289 k0_t5) a + S1x1x1x16.size a ≤ S4x4x4x1024.size a
  k0_off2290_inb : ∀ k0_t5 : Fin k0_t5_loop.trips, ∀ a, (k0_off2290 k0_t5) a + S1x1x1x16.size a ≤ S2x4x4x1024.size a
  k0_off2291_inb : ∀ k0_t5 : Fin k0_t5_loop.trips, ∀ a, (k0_off2291 k0_t5) a + S1x1x1x16.size a ≤ S4x4x4x1024.size a
  k0_off2292_inb : ∀ k0_t5 : Fin k0_t5_loop.trips, ∀ a, (k0_off2292 k0_t5) a + S1x1x1x16.size a ≤ S2x4x4x1024.size a
  k0_off2293_inb : ∀ k0_t5 : Fin k0_t5_loop.trips, ∀ a, (k0_off2293 k0_t5) a + S1x1x1x16.size a ≤ S4x4x4x1024.size a
  k0_off2294_inb : ∀ k0_t5 : Fin k0_t5_loop.trips, ∀ a, (k0_off2294 k0_t5) a + S1x1x1x16.size a ≤ S2x4x4x1024.size a
  k0_off2295_inb : ∀ k0_t5 : Fin k0_t5_loop.trips, ∀ a, (k0_off2295 k0_t5) a + S1x1x1x16.size a ≤ S4x4x4x1024.size a
  k0_off2296_inb : ∀ k0_t5 : Fin k0_t5_loop.trips, ∀ a, (k0_off2296 k0_t5) a + S1x1x1x16.size a ≤ S2x4x4x1024.size a
  k0_off2297_inb : ∀ k0_t5 : Fin k0_t5_loop.trips, ∀ a, (k0_off2297 k0_t5) a + S1x1x1x16.size a ≤ S4x4x4x1024.size a
  k0_off2298_inb : ∀ k0_t5 : Fin k0_t5_loop.trips, ∀ a, (k0_off2298 k0_t5) a + S1x1x1x16.size a ≤ S2x4x4x1024.size a
  k0_off2299_inb : ∀ k0_t5 : Fin k0_t5_loop.trips, ∀ a, (k0_off2299 k0_t5) a + S1x1x1x16.size a ≤ S4x4x4x1024.size a
  k0_off2300_inb : ∀ k0_t5 : Fin k0_t5_loop.trips, ∀ a, (k0_off2300 k0_t5) a + S1x1x1x16.size a ≤ S2x4x4x1024.size a
  k0_off2301_inb : ∀ k0_t5 : Fin k0_t5_loop.trips, ∀ a, (k0_off2301 k0_t5) a + S1x1x1x16.size a ≤ S4x4x4x1024.size a
  k0_off2302_inb : ∀ k0_t5 : Fin k0_t5_loop.trips, ∀ a, (k0_off2302 k0_t5) a + S1x1x1x16.size a ≤ S2x4x4x1024.size a
  k0_off2303_inb : ∀ k0_t5 : Fin k0_t5_loop.trips, ∀ a, (k0_off2303 k0_t5) a + S1x1x1x16.size a ≤ S4x4x4x1024.size a
  k0_off2304_inb : ∀ k0_t5 : Fin k0_t5_loop.trips, ∀ a, (k0_off2304 k0_t5) a + S1x1x1x16.size a ≤ S2x4x4x1024.size a
  k0_off2305_inb : ∀ k0_t5 : Fin k0_t5_loop.trips, ∀ a, (k0_off2305 k0_t5) a + S1x1x1x16.size a ≤ S4x4x4x1024.size a
  k0_off2306_inb : ∀ k0_t5 : Fin k0_t5_loop.trips, ∀ a, (k0_off2306 k0_t5) a + S1x1x1x16.size a ≤ S2x4x4x1024.size a
  k0_off2307_inb : ∀ k0_t5 : Fin k0_t5_loop.trips, ∀ a, (k0_off2307 k0_t5) a + S1x1x1x16.size a ≤ S4x4x4x1024.size a
  k0_off2308_inb : ∀ k0_t5 : Fin k0_t5_loop.trips, ∀ a, (k0_off2308 k0_t5) a + S1x1x1x16.size a ≤ S2x4x4x1024.size a
  k0_off2309_inb : ∀ k0_t5 : Fin k0_t5_loop.trips, ∀ a, (k0_off2309 k0_t5) a + S1x1x1x16.size a ≤ S4x4x4x1024.size a
  k0_off2310_inb : ∀ k0_t5 : Fin k0_t5_loop.trips, ∀ a, (k0_off2310 k0_t5) a + S1x1x1x16.size a ≤ S2x4x4x1024.size a
  k0_off2311_inb : ∀ k0_t5 : Fin k0_t5_loop.trips, ∀ a, (k0_off2311 k0_t5) a + S1x1x1x16.size a ≤ S4x4x4x1024.size a
  k0_off2312_inb : ∀ k0_t5 : Fin k0_t5_loop.trips, ∀ a, (k0_off2312 k0_t5) a + S1x1x1x16.size a ≤ S2x4x4x1024.size a
  k0_off2313_inb : ∀ k0_t5 : Fin k0_t5_loop.trips, ∀ a, (k0_off2313 k0_t5) a + S1x1x1x16.size a ≤ S4x4x4x1024.size a
  k0_off2314_inb : ∀ k0_t5 : Fin k0_t5_loop.trips, ∀ a, (k0_off2314 k0_t5) a + S1x1x1x16.size a ≤ S2x4x4x1024.size a
  k0_off2315_inb : ∀ k0_t5 : Fin k0_t5_loop.trips, ∀ a, (k0_off2315 k0_t5) a + S1x1x1x16.size a ≤ S4x4x4x1024.size a
  k0_off2316_inb : ∀ k0_t5 : Fin k0_t5_loop.trips, ∀ a, (k0_off2316 k0_t5) a + S1x1x1x16.size a ≤ S2x4x4x1024.size a
  k0_off2317_inb : ∀ k0_t5 : Fin k0_t5_loop.trips, ∀ a, (k0_off2317 k0_t5) a + S1x1x1x16.size a ≤ S4x4x4x1024.size a
  k0_off2318_inb : ∀ k0_t5 : Fin k0_t5_loop.trips, ∀ a, (k0_off2318 k0_t5) a + S1x1x1x16.size a ≤ S2x4x4x1024.size a
  k0_off2319_inb : ∀ k0_t5 : Fin k0_t5_loop.trips, ∀ a, (k0_off2319 k0_t5) a + S1x1x1x16.size a ≤ S4x4x4x1024.size a
  k0_off2320_inb : ∀ k0_t5 : Fin k0_t5_loop.trips, ∀ a, (k0_off2320 k0_t5) a + S1x1x1x16.size a ≤ S2x4x4x1024.size a
  k0_off2321_inb : ∀ k0_t5 : Fin k0_t5_loop.trips, ∀ a, (k0_off2321 k0_t5) a + S1x1x1x16.size a ≤ S4x4x4x1024.size a
  k0_off2322_inb : ∀ k0_t5 : Fin k0_t5_loop.trips, ∀ a, (k0_off2322 k0_t5) a + S1x1x1x16.size a ≤ S2x4x4x1024.size a
  k0_off2323_inb : ∀ k0_t5 : Fin k0_t5_loop.trips, ∀ a, (k0_off2323 k0_t5) a + S1x1x1x16.size a ≤ S4x4x4x1024.size a
  k0_off2324_inb : ∀ k0_t5 : Fin k0_t5_loop.trips, ∀ a, (k0_off2324 k0_t5) a + S1x1x1x16.size a ≤ S2x4x4x1024.size a
  k0_off2325_inb : ∀ k0_t5 : Fin k0_t5_loop.trips, ∀ a, (k0_off2325 k0_t5) a + S1x1x1x16.size a ≤ S4x4x4x1024.size a
  k0_off2326_inb : ∀ k0_t5 : Fin k0_t5_loop.trips, ∀ a, (k0_off2326 k0_t5) a + S1x1x1x16.size a ≤ S2x4x4x1024.size a
  k0_off2327_inb : ∀ k0_t5 : Fin k0_t5_loop.trips, ∀ a, (k0_off2327 k0_t5) a + S1x1x1x16.size a ≤ S4x4x4x1024.size a
  k0_off2328_inb : ∀ k0_t5 : Fin k0_t5_loop.trips, ∀ a, (k0_off2328 k0_t5) a + S1x1x1x16.size a ≤ S2x4x4x1024.size a
  k0_off2329_inb : ∀ k0_t5 : Fin k0_t5_loop.trips, ∀ a, (k0_off2329 k0_t5) a + S1x1x1x16.size a ≤ S4x4x4x1024.size a
  k0_off2330_inb : ∀ k0_t5 : Fin k0_t5_loop.trips, ∀ a, (k0_off2330 k0_t5) a + S1x1x1x16.size a ≤ S2x4x4x1024.size a
  k0_off2331_inb : ∀ k0_t5 : Fin k0_t5_loop.trips, ∀ a, (k0_off2331 k0_t5) a + S1x1x1x16.size a ≤ S4x4x4x1024.size a
  k0_off2332_inb : ∀ k0_t5 : Fin k0_t5_loop.trips, ∀ a, (k0_off2332 k0_t5) a + S1x1x1x16.size a ≤ S2x4x4x1024.size a
  k0_off2333_inb : ∀ k0_t5 : Fin k0_t5_loop.trips, ∀ a, (k0_off2333 k0_t5) a + S1x1x1x16.size a ≤ S4x4x4x1024.size a
  k0_off2334_inb : ∀ k0_t5 : Fin k0_t5_loop.trips, ∀ a, (k0_off2334 k0_t5) a + S1x1x1x16.size a ≤ S2x4x4x1024.size a
  k0_off2335_inb : ∀ k0_t5 : Fin k0_t5_loop.trips, ∀ a, (k0_off2335 k0_t5) a + S1x1x1x16.size a ≤ S4x4x4x1024.size a
  k0_off2336_inb : ∀ k0_t5 : Fin k0_t5_loop.trips, ∀ a, (k0_off2336 k0_t5) a + S1x1x1x16.size a ≤ S2x4x4x1024.size a
  k0_off2337_inb : ∀ k0_t5 : Fin k0_t5_loop.trips, ∀ a, (k0_off2337 k0_t5) a + S1x1x1x16.size a ≤ S4x4x4x1024.size a
  k0_off2338_inb : ∀ k0_t5 : Fin k0_t5_loop.trips, ∀ a, (k0_off2338 k0_t5) a + S1x1x1x16.size a ≤ S2x4x4x1024.size a
  k0_off2339_inb : ∀ k0_t5 : Fin k0_t5_loop.trips, ∀ a, (k0_off2339 k0_t5) a + S1x1x1x16.size a ≤ S4x4x4x1024.size a
  k0_off2340_inb : ∀ k0_t5 : Fin k0_t5_loop.trips, ∀ a, (k0_off2340 k0_t5) a + S1x1x1x16.size a ≤ S2x4x4x1024.size a
  k0_off2341_inb : ∀ k0_t5 : Fin k0_t5_loop.trips, ∀ a, (k0_off2341 k0_t5) a + S1x1x1x16.size a ≤ S4x4x4x1024.size a
  k0_off2342_inb : ∀ k0_t5 : Fin k0_t5_loop.trips, ∀ a, (k0_off2342 k0_t5) a + S1x1x1x16.size a ≤ S2x4x4x1024.size a
  k0_off2343_inb : ∀ k0_t5 : Fin k0_t5_loop.trips, ∀ a, (k0_off2343 k0_t5) a + S1x1x1x16.size a ≤ S4x4x4x1024.size a
  k0_off2344_inb : ∀ k0_t5 : Fin k0_t5_loop.trips, ∀ a, (k0_off2344 k0_t5) a + S1x1x1x16.size a ≤ S2x4x4x1024.size a
  k0_off2345_inb : ∀ k0_t5 : Fin k0_t5_loop.trips, ∀ a, (k0_off2345 k0_t5) a + S1x1x1x16.size a ≤ S4x4x4x1024.size a
  k0_off2346_inb : ∀ k0_t5 : Fin k0_t5_loop.trips, ∀ a, (k0_off2346 k0_t5) a + S1x1x1x16.size a ≤ S2x4x4x1024.size a
  k0_off2347_inb : ∀ i : grid0.Coords, ∀ a, (k0_off2347 i) a + S1x4x1024.size a ≤ S4x4096x1024.size a
  k0_off2348_inb : ∀ i : grid0.Coords, ∀ a, (k0_off2348 i) a + S1x4x1024.size a ≤ S4x4096x1024.size a
  k0_off2349_inb : ∀ i : grid0.Coords, ∀ a, (k0_off2349 i) a + S1x4x1024.size a ≤ S4x4096x1024.size a
  k0_off2350_inb : ∀ i : grid0.Coords, ∀ a, (k0_off2350 i) a + S1x4x1024.size a ≤ S4x4096x1024.size a

class Shapes1.Facts₀ : Prop where
  slices_S8192x1024_S4096x1024_0_0 : S8192x1024.Slices ![0, 0] S4096x1024
  inb_S4x4x1024_S1x4x1024_0_0_0 : ∀ a, (![0, 0, 0] : Fin 3 → Nat) a + S1x4x1024.size a ≤ S4x4x1024.size a
  squeezes_S1x4x1024_S4x1024 : S1x4x1024.Squeezes S4x1024
  inb_S4x4x4x1024_S1x1x4x1024_0_0_0_0 : ∀ a, (![0, 0, 0, 0] : Fin 4 → Nat) a + S1x1x4x1024.size a ≤ S4x4x4x1024.size a
  squeezes_S1x1x4x1024_S4x1024 : S1x1x4x1024.Squeezes S4x1024
  inb_S4x4x4x1024_S1x1x4x1024_0_1_0_0 : ∀ a, (![0, 1, 0, 0] : Fin 4 → Nat) a + S1x1x4x1024.size a ≤ S4x4x4x1024.size a
  inb_S4x4x4x1024_S1x1x4x1024_0_2_0_0 : ∀ a, (![0, 2, 0, 0] : Fin 4 → Nat) a + S1x1x4x1024.size a ≤ S4x4x4x1024.size a
  inb_S4x4x4x1024_S1x1x4x1024_0_3_0_0 : ∀ a, (![0, 3, 0, 0] : Fin 4 → Nat) a + S1x1x4x1024.size a ≤ S4x4x4x1024.size a
  inb_S4x4x1024_S1x4x1024_1_0_0 : ∀ a, (![1, 0, 0] : Fin 3 → Nat) a + S1x4x1024.size a ≤ S4x4x1024.size a
  inb_S4x4x4x1024_S1x1x4x1024_1_0_0_0 : ∀ a, (![1, 0, 0, 0] : Fin 4 → Nat) a + S1x1x4x1024.size a ≤ S4x4x4x1024.size a
  inb_S4x4x4x1024_S1x1x4x1024_1_1_0_0 : ∀ a, (![1, 1, 0, 0] : Fin 4 → Nat) a + S1x1x4x1024.size a ≤ S4x4x4x1024.size a
  inb_S4x4x4x1024_S1x1x4x1024_1_2_0_0 : ∀ a, (![1, 2, 0, 0] : Fin 4 → Nat) a + S1x1x4x1024.size a ≤ S4x4x4x1024.size a
  inb_S4x4x4x1024_S1x1x4x1024_1_3_0_0 : ∀ a, (![1, 3, 0, 0] : Fin 4 → Nat) a + S1x1x4x1024.size a ≤ S4x4x4x1024.size a
  inb_S4x4x1024_S1x4x1024_2_0_0 : ∀ a, (![2, 0, 0] : Fin 3 → Nat) a + S1x4x1024.size a ≤ S4x4x1024.size a
  inb_S4x4x4x1024_S1x1x4x1024_2_0_0_0 : ∀ a, (![2, 0, 0, 0] : Fin 4 → Nat) a + S1x1x4x1024.size a ≤ S4x4x4x1024.size a
  inb_S4x4x4x1024_S1x1x4x1024_2_1_0_0 : ∀ a, (![2, 1, 0, 0] : Fin 4 → Nat) a + S1x1x4x1024.size a ≤ S4x4x4x1024.size a
  inb_S4x4x4x1024_S1x1x4x1024_2_2_0_0 : ∀ a, (![2, 2, 0, 0] : Fin 4 → Nat) a + S1x1x4x1024.size a ≤ S4x4x4x1024.size a
  inb_S4x4x4x1024_S1x1x4x1024_2_3_0_0 : ∀ a, (![2, 3, 0, 0] : Fin 4 → Nat) a + S1x1x4x1024.size a ≤ S4x4x4x1024.size a
  inb_S4x4x1024_S1x4x1024_3_0_0 : ∀ a, (![3, 0, 0] : Fin 3 → Nat) a + S1x4x1024.size a ≤ S4x4x1024.size a
  inb_S4x4x4x1024_S1x1x4x1024_3_0_0_0 : ∀ a, (![3, 0, 0, 0] : Fin 4 → Nat) a + S1x1x4x1024.size a ≤ S4x4x4x1024.size a
  inb_S4x4x4x1024_S1x1x4x1024_3_1_0_0 : ∀ a, (![3, 1, 0, 0] : Fin 4 → Nat) a + S1x1x4x1024.size a ≤ S4x4x4x1024.size a
  inb_S4x4x4x1024_S1x1x4x1024_3_2_0_0 : ∀ a, (![3, 2, 0, 0] : Fin 4 → Nat) a + S1x1x4x1024.size a ≤ S4x4x4x1024.size a
  inb_S4x4x4x1024_S1x1x4x1024_3_3_0_0 : ∀ a, (![3, 3, 0, 0] : Fin 4 → Nat) a + S1x1x4x1024.size a ≤ S4x4x4x1024.size a
  inb_S2x4x4x1024_S1x1x4x1024_0_0_0_0 : ∀ a, (![0, 0, 0, 0] : Fin 4 → Nat) a + S1x1x4x1024.size a ≤ S2x4x4x1024.size a
  inb_S2x4x4x1024_S1x1x4x1024_0_1_0_0 : ∀ a, (![0, 1, 0, 0] : Fin 4 → Nat) a + S1x1x4x1024.size a ≤ S2x4x4x1024.size a
  inb_S2x4x4x1024_S1x1x4x1024_0_2_0_0 : ∀ a, (![0, 2, 0, 0] : Fin 4 → Nat) a + S1x1x4x1024.size a ≤ S2x4x4x1024.size a
  inb_S2x4x4x1024_S1x1x4x1024_0_3_0_0 : ∀ a, (![0, 3, 0, 0] : Fin 4 → Nat) a + S1x1x4x1024.size a ≤ S2x4x4x1024.size a
  h_S1x1x16 : 0 < S1x1x16.numel
  shapeCasts_S1x1x16_S16 : S1x1x16.ShapeCasts S16
  h_S1x1x1x16 : 0 < S1x1x1x16.numel
  shapeCasts_S1x1x1x16_S16 : S1x1x1x16.ShapeCasts S16
  shapeCasts_S16_S1x1x1x16 : S16.ShapeCasts S1x1x1x16
  inb_S2x4x4x1024_S1x1x4x1024_1_0_0_0 : ∀ a, (![1, 0, 0, 0] : Fin 4 → Nat) a + S1x1x4x1024.size a ≤ S2x4x4x1024.size a
  inb_S2x4x4x1024_S1x1x4x1024_1_1_0_0 : ∀ a, (![1, 1, 0, 0] : Fin 4 → Nat) a + S1x1x4x1024.size a ≤ S2x4x4x1024.size a
  inb_S2x4x4x1024_S1x1x4x1024_1_2_0_0 : ∀ a, (![1, 2, 0, 0] : Fin 4 → Nat) a + S1x1x4x1024.size a ≤ S2x4x4x1024.size a
  inb_S2x4x4x1024_S1x1x4x1024_1_3_0_0 : ∀ a, (![1, 3, 0, 0] : Fin 4 → Nat) a + S1x1x4x1024.size a ≤ S2x4x4x1024.size a
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub

class Facts₀ : Prop where
  k0_r1 : K0.R1.Facts₀
  k0_r2 : K0.R2.Facts₀
  k0_r3 : K0.R3.Facts₀
  shapes1 : Shapes1.Facts₀
attribute [instance] Facts₀.k0_r1 Facts₀.k0_r2 Facts₀.k0_r3 Facts₀.shapes1

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S4x4096x1024 : Shape := ⟨3, ![4, 4096, 1024]⟩
abbrev S8192x1024 : Shape := ⟨2, ![8192, 1024]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i1⟩
  | .hbm, ⟨7, _⟩ => ⟨S_, .i32⟩
  | .hbm, ⟨8, _⟩ => ⟨S1x4096, .i32⟩
  | .hbm, ⟨9, _⟩ => ⟨S1x4096, .i32⟩
  | .hbm, ⟨10, _⟩ => ⟨S1x4096, .i32⟩
  | .hbm, ⟨11, _⟩ => ⟨S1x4096x1, .i32⟩
  | .hbm, ⟨12, _⟩ => ⟨S1, .i32⟩
  | .hbm, ⟨13, _⟩ => ⟨S_, .i32⟩
  | .hbm, ⟨14, _⟩ => ⟨S1x4096x1, .i32⟩
  | .hbm, ⟨15, _⟩ => ⟨S1x4096x1, .i1⟩
  | .hbm, ⟨16, _⟩ => ⟨S1x1x1, .i32⟩
  | .hbm, ⟨17, _⟩ => ⟨S1x4096x1, .i32⟩
  | .hbm, ⟨18, _⟩ => ⟨S1x4096x1, .i1⟩
  | .hbm, ⟨19, _⟩ => ⟨S1x4096x1, .i1⟩
  | .hbm, ⟨20, _⟩ => ⟨S_, .i1⟩
  | .hbm, ⟨21, _⟩ => ⟨S1x4096, .i1⟩
  | .hbm, ⟨22, _⟩ => ⟨S1x4096x1024, .f32⟩
  | .hbm, ⟨23, _⟩ => ⟨S1x4096x1024, .i1⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1_S1x1x1_2 : S1.BroadcastsInDim S1x1x1 (![2] : Fin 1 → Fin S1x1x1.rank)
  bcast_S1x1x1_S1x4096x1_0_1_2 : S1x1x1.BroadcastsInDim S1x4096x1 (![0, 1, 2] : Fin 3 → Fin S1x4096x1.rank)
  reducesTo_S1x4096x1_S1x4096_d2 : S1x4096x1.ReducesTo [2] S1x4096
  h_S_ : 0 < S_.numel
  bcast_S1x4096_S1x4096x1024_0_1 : S1x4096.BroadcastsInDim S1x4096x1024 (![0, 1] : Fin 2 → Fin S1x4096x1024.rank)
  bcast_S_S1x4096x1024 : S_.BroadcastsInDim S1x4096x1024 (![] : Fin 0 → Fin S1x4096x1024.rank)
  bcast_S1x4096x1024_S4x4096x1024_0_1_2 : S1x4096x1024.BroadcastsInDim S4x4096x1024 (![0, 1, 2] : Fin 3 → Fin S4x4096x1024.rank)
  gather_S8192x1024_S1x4096x1_S1x4096x1024_2_0_n_n_0_2_11024_wf : GatherDims.WF S8192x1024 S1x4096x1 S1x4096x1024 [2] [0] [] [0] [] 2 ![1, 1024]

variable [Facts₀]

def gather_S8192x1024_S1x4096x1_S1x4096x1024_2_0_n_n_0_2_11024 : GatherDims S8192x1024 S1x4096x1 S1x4096x1024 where
  offsetDims := [2]
  collapsedSliceDims := [0]
  operandBatchingDims := []
  startIndicesBatchingDims := []
  startIndexMap := [0]
  indexVectorDim := 2
  sliceSizes := ![1, 1024]
  wf := gather_S8192x1024_S1x4096x1_S1x4096x1024_2_0_n_n_0_2_11024_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨3, ![4, 4096, 1024]⟩
abbrev SP : Shape := ⟨2, ![8192, 1024]⟩
abbrev SQ : Shape := ⟨2, ![4096, 1024]⟩

def rowOf (i : SX.Idx) : SP.Idx :=
  ix2 (⟨(i 1).val, Nat.lt_of_lt_of_le (i 1).isLt (by decide)⟩ : Fin 8192) (⟨(i 2).val, (i 2).isLt⟩ : Fin 1024)

def rowOfQ (i : SX.Idx) : SQ.Idx :=
  ix2 (⟨(i 1).val, (i 1).isLt⟩ : Fin 4096) (⟨(i 2).val, (i 2).isLt⟩ : Fin 1024)

variable {F : FTy → Type} [FloatOps F]

/-- Entry (b, s, d) of the result: the activation's entry plus the table's entry at row s. -/
def G (x : FVec F SX .f32) (p : FVec F SP .f32) : FVec F SX .f32 :=
  fun i => FloatOps.addf (x i) (p (rowOf i))

def GQ (x : FVec F SX .f32) (q : FVec F SQ .f32) : FVec F SX .f32 :=
  fun i => FloatOps.addf (x i) (q (rowOfQ i))

/-- Row s of the table's first 4096 rows is row s of the table, so the sum over the cut rows is the sum over the table. -/
theorem GQ_slice (x : FVec F SX .f32) (p : FVec F SP .f32) (h : SP.Slices ![0, 0] SQ) :
    GQ x (extractStridedSlice SQ ![0, 0] p h) = G x p := by
  funext i
  show FloatOps.addf (x i) (extractStridedSlice SQ ![0, 0] p h (rowOfQ i)) = FloatOps.addf (x i) (p (rowOf i))
  congr 1
  unfold extractStridedSlice
  refine congrArg p (funext fun a => Fin.ext ?_)
  match a with
  | ⟨0, _⟩ => simp [rowOf, rowOfQ]
  | ⟨1, _⟩ => simp [rowOf, rowOfQ]

end Cert.Spec

end
-- ==== Proof.RefOps.lean ====
import proofs.«210091_g81140522156176_cont_9to1_m_468_11_alg».proof.Proof.Gen.ReferenceIdeal
import Idealize.ShloMosaic.Lib.StableHlo.Run

noncomputable section

namespace Cert.RefProof

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    TRef.nullary main_call0.c (constantI S_ 32 0#32),
    TRef.unary main_call0.c main_call0.v0 (broadcastInDim S1x4096 ![] bcast_S_S1x4096),
    TRef.binary (.of main_v1) main_call0.v0 main_call0.v1 (cmpi .slt),
    TRef.nullary main_call0.c_0 (constantI S_ 32 8192#32),
    TRef.unary main_call0.c_0 main_call0.v2 (broadcastInDim S1x4096 ![] bcast_S_S1x4096),
    TRef.binary (.of main_v1) main_call0.v2 main_call0.v3 addi,
    TRef.ternary main_call0.v1 main_call0.v3 (.of main_v1) main_call0.call0.v0 select,
    TRef.unary main_call0.call0.v0 main_call0.v5 (broadcastInDim S1x4096x1 ![0, 1] bcast_S1x4096_S1x4096x1_0_1),
    TRef.nullary main_call0.c_1 (constantI S1 32 8191#32),
    TRef.nullary main_call0.c_2 (constantI S_ 32 0#32),
    TRef.unary main_call0.c_2 main_call0.v6 (broadcastInDim S1x4096x1 ![] bcast_S_S1x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x4096x1 ![0, 1, 2] bcast_S1x1x1_S1x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x4096x1_S1x4096_d2 h_S_),
    TRef.binary (.of main_arg1) main_call0.v5 main_call0.v13 (fun x i => Host.gather gather_S8192x1024_S1x4096x1_S1x4096x1024_2_0_n_n_0_2_11024 x i),
    TRef.unary main_call0.v12 main_call0.v14 (broadcastInDim S1x4096x1024 ![0, 1] bcast_S1x4096_S1x4096x1024_0_1),
    TRef.nullary main_call0.cst (constant S_ .f32 0x7FC00000#32),
    TRef.unary main_call0.cst main_call0.v15 (broadcastInDim S1x4096x1024 ![] bcast_S_S1x4096x1024),
    TRef.ternary main_call0.v14 main_call0.v13 main_call0.v15 main_call0.v16 select,
    unary main_v2 main_v3 (broadcastInDim S4x4096x1024 ![0, 1, 2] bcast_S1x4096x1024_S4x4096x1024_0_1_2 : (⟨S1x4096x1024, .f32⟩ : BufTy).Contents (Elt F) → (⟨S4x4096x1024, .f32⟩ : BufTy).Contents (Elt F)),
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)) ]

set_option maxRecDepth 1024 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefProof

end
-- ==== Proof.RefValue.lean ====
import proofs.«210091_g81140522156176_cont_9to1_m_468_11_alg».proof.ReferenceIdeal
import proofs.«210091_g81140522156176_cont_9to1_m_468_11_alg».proof.Proof.Spec
import Idealize.ShloMosaic.Lib.ValueIdx
import Idealize.ShloMosaic.Lib.IdealHost
import Idealize.ShloMosaic.Lib.Affine
import Idealize.ShloMosaic.Lib.Pipeline.Value
import Idealize.ShloMosaic.Lib.StableHlo.Predicate
import Idealize.ShloMosaic.PureOps.Reduce

noncomputable section

namespace Cert.RefProof

open Cert.ReferenceIdeal Cert.ReferenceIdeal.Facts₀ Idealize.ShloMosaic Idealize.ShloMosaic.ValueIdx

theorem toInt_pos (k : Fin 4096) : (BitVec.ofNat 32 k.val).toInt = (k.val : Int) :=
  StableHlo.Predicate.toInt_ofNat_small k.val (by have := k.isLt; omega)

theorem slt_zero (k : Fin 4096) : IntOp.cmpi .slt (BitVec.ofNat 32 k.val) 0#32 = 0#1 :=
  eq_zero_of_ne_one fun h => by
    have := IntOp.cmpi_slt.1 h
    rw [toInt_pos, show (0#32 : BitVec 32).toInt = 0 from rfl] at this
    omega

theorem sge_zero (k : Fin 4096) : IntOp.cmpi .sge (BitVec.ofNat 32 k.val) 0#32 = 1#1 :=
  IntOp.cmpi_sge.2 (by rw [toInt_pos, show (0#32 : BitVec 32).toInt = 0 from rfl]; omega)

theorem sle_last (k : Fin 4096) : IntOp.cmpi .sle (BitVec.ofNat 32 k.val) 8191#32 = 1#1 :=
  IntOp.cmpi_sle.2 (by rw [toInt_pos, show (8191#32 : BitVec 32).toInt = 8191 from rfl]; have := k.isLt; omega)

theorem clamp_pos (k : Fin 4096) : min (BitVec.ofNat 32 k.val).toInt.toNat 8191 = k.val := by
  rw [toInt_pos, Int.toNat_natCast]; have := k.isLt; omega

theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi (1#1 : BitVec 1) 1#1 = 1#1 := by decide
    rw [List.foldl_cons, hf a, h1]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

variable [Cert.ReferenceIdeal.Facts]

/-- The gather at the indices 0 … 4095 reads row s of the table at position s. -/
theorem gather_row {α : Type} (p : S8192x1024.Idx → α) (idx : IVec S1x4096x1 32) (k : Fin 4096) (d : Fin 1024) :
    Host.gather gather_S8192x1024_S1x4096x1_S1x4096x1024_2_0_n_n_0_2_11024 p idx (ix3 (0 : Fin 1) k d)
      = p (ix2 (⟨min (idx (ix3 (0 : Fin 1) k (0 : Fin 1))).toInt.toNat 8191, by omega⟩ : Fin 8192) d) := by
  unfold Host.gather
  refine congrArg p (funext fun a => Fin.ext ?_)
  match a with
  | ⟨0, _⟩ =>
    show gather_S8192x1024_S1x4096x1_S1x4096x1024_2_0_n_n_0_2_11024.start (ix3 (0 : Fin 1) k d) idx 0 + gather_S8192x1024_S1x4096x1_S1x4096x1024_2_0_n_n_0_2_11024.batchCoord (ix3 (0 : Fin 1) k d) 0
      + gather_S8192x1024_S1x4096x1_S1x4096x1024_2_0_n_n_0_2_11024.offCoord (ix3 (0 : Fin 1) k d) 0 = min (idx (ix3 (0 : Fin 1) k (0 : Fin 1))).toInt.toNat 8191
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S1x4096x1_S1x4096x1024_2_0_n_n_0_2_11024.startIndexMap from List.mem_singleton.mpr rfl)]
    have hsi : gather_S8192x1024_S1x4096x1_S1x4096x1024_2_0_n_n_0_2_11024.siIdx (ix3 (0 : Fin 1) k d) ⟨List.idxOf (0 : Fin 2) gather_S8192x1024_S1x4096x1_S1x4096x1024_2_0_n_n_0_2_11024.startIndexMap,
        List.idxOf_lt_length_iff.2 (List.mem_singleton.mpr rfl)⟩ = ix3 (0 : Fin 1) k (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S8192x1024_S1x4096x1_S1x4096x1024_2_0_n_n_0_2_11024.start (ix3 (0 : Fin 1) k d) idx 1 + gather_S8192x1024_S1x4096x1_S1x4096x1024_2_0_n_n_0_2_11024.batchCoord (ix3 (0 : Fin 1) k d) 1
      + gather_S8192x1024_S1x4096x1_S1x4096x1024_2_0_n_n_0_2_11024.offCoord (ix3 (0 : Fin 1) k d) 1 = d.val
    have hk : (1 : Fin 2) ∈ gather_S8192x1024_S1x4096x1_S1x4096x1024_2_0_n_n_0_2_11024.sKept :=
      (GatherDims.mem_sKept _ _).mpr ⟨show (1 : Fin 2) ∉ ([0] : List (Fin 2)) by decide, List.not_mem_nil⟩
    rw [GatherDims.batchCoord_eq_zero _ _ _ List.not_mem_nil, Nat.add_zero]
    unfold GatherDims.start GatherDims.offCoord
    rw [dif_neg (show (1 : Fin 2) ∉ gather_S8192x1024_S1x4096x1_S1x4096x1024_2_0_n_n_0_2_11024.startIndexMap from
        (by decide : (1 : Fin 2) ∉ ([0] : List (Fin 2)))), dif_pos hk, Nat.zero_add]
    rfl

variable {F : FTy → Type} [FloatOps F]

def posRow : IVec S1x4096 32 := broadcastInDim S1x4096 ![1] bcast_S4096_S1x4096_1 (iotaInDim S4096 32 0)

def normRow : IVec S1x4096 32 :=
  select (cmpi .slt posRow (broadcastInDim S1x4096 ![] bcast_S_S1x4096 (constantI S_ 32 0#32)))
    (addi posRow (broadcastInDim S1x4096 ![] bcast_S_S1x4096 (constantI S_ 32 8192#32))) posRow

def idxCol : IVec S1x4096x1 32 := broadcastInDim S1x4096x1 ![0, 1] bcast_S1x4096_S1x4096x1_0_1 normRow

def inRange : IVec S1x4096x1 1 :=
  andi (cmpi .sge idxCol (broadcastInDim S1x4096x1 ![] bcast_S_S1x4096x1 (constantI S_ 32 0#32)))
    (cmpi .sle idxCol (broadcastInDim S1x4096x1 ![0, 1, 2] bcast_S1x1x1_S1x4096x1_0_1_2
      (broadcastInDim S1x1x1 ![2] bcast_S1_S1x1x1_2 (constantI S1 32 8191#32))))

def maskRow : IVec S1x4096 1 :=
  Host.reduce IntOp.andi inRange (constantI S_ 1 1#1) reducesTo_S1x4096x1_S1x4096_d2 h_S_

def taken (p : FVec F S8192x1024 .f32) : FVec F S1x4096x1024 .f32 :=
  select (broadcastInDim S1x4096x1024 ![0, 1] bcast_S1x4096_S1x4096x1024_0_1 maskRow)
    (Host.gather gather_S8192x1024_S1x4096x1_S1x4096x1024_2_0_n_n_0_2_11024 p idxCol)
    (broadcastInDim S1x4096x1024 ![] bcast_S_S1x4096x1024 (constant S_ .f32 0x7FC00000#32))

def out (x : FVec F S4x4096x1024 .f32) (p : FVec F S8192x1024 .f32) : FVec F S4x4096x1024 .f32 :=
  addf x (broadcastInDim S4x4096x1024 ![0, 1, 2] bcast_S1x4096x1024_S4x4096x1024_0_1_2 (taken p))

theorem posRow_apply (k : Fin 4096) : posRow (ix2 (0 : Fin 1) k) = BitVec.ofNat 32 k.val :=
  broadcastInDim_apply _ _ _ (ix2 (0 : Fin 1) k) (ix1 k) (fun a => match a with | ⟨0, _⟩ => rfl)

theorem normRow_apply (k : Fin 4096) : normRow (ix2 (0 : Fin 1) k) = BitVec.ofNat 32 k.val := by
  show Scalar.select (IntOp.cmpi .slt (posRow (ix2 (0 : Fin 1) k)) 0#32)
    (IntOp.addi (posRow (ix2 (0 : Fin 1) k)) 8192#32) (posRow (ix2 (0 : Fin 1) k)) = _
  rw [posRow_apply, slt_zero, select_zero]

theorem idxCol_apply (i : S1x4096x1.Idx) : idxCol i = BitVec.ofNat 32 (i 1).val :=
  (broadcastInDim_apply _ _ _ i (ix2 (0 : Fin 1) (⟨(i 1).val, (i 1).isLt⟩ : Fin 4096))
    (fun a => match a with | ⟨0, _⟩ => rfl | ⟨1, _⟩ => rfl)).trans
    (normRow_apply (⟨(i 1).val, (i 1).isLt⟩ : Fin 4096))

theorem inRange_apply (i : S1x4096x1.Idx) : inRange i = 1#1 := by
  show IntOp.andi (IntOp.cmpi .sge (idxCol i) 0#32) (IntOp.cmpi .sle (idxCol i) 8191#32) = 1#1
  rw [idxCol_apply]
  exact IntOp.andi_eq_one.2 ⟨sge_zero (⟨(i 1).val, (i 1).isLt⟩ : Fin 4096), sle_last (⟨(i 1).val, (i 1).isLt⟩ : Fin 4096)⟩

theorem maskRow_apply (j : S1x4096.Idx) : maskRow j = 1#1 :=
  reduce_andi_one _ _ _ _ inRange_apply rfl j

theorem taken_apply (p : FVec F S8192x1024 .f32) (k : Fin 4096) (d : Fin 1024) :
    taken p (ix3 (0 : Fin 1) k d) = p (ix2 (⟨k.val, by have := k.isLt; omega⟩ : Fin 8192) d) := by
  show Scalar.select (maskRow _) (Host.gather gather_S8192x1024_S1x4096x1_S1x4096x1024_2_0_n_n_0_2_11024 p idxCol (ix3 (0 : Fin 1) k d)) _ = _
  rw [maskRow_apply, select_one, gather_row]
  refine congrArg p (congrArg (fun r => ix2 r d) (Fin.ext ?_))
  show min (idxCol (ix3 (0 : Fin 1) k (0 : Fin 1))).toInt.toNat 8191 = k.val
  rw [idxCol_apply]
  exact clamp_pos k

theorem out_apply (x : FVec F S4x4096x1024 .f32) (p : FVec F S8192x1024 .f32) (i : S4x4096x1024.Idx) :
    out x p i = FloatOps.addf (x i) (p (Cert.Spec.rowOf i)) := by
  show FloatOps.addf (x i) (broadcastInDim S4x4096x1024 ![0, 1, 2] bcast_S1x4096x1024_S4x4096x1024_0_1_2 (taken p) i) = _
  congr 1
  exact (broadcastInDim_apply _ _ _ i
      (ix3 (0 : Fin 1) (⟨(i 1).val, (i 1).isLt⟩ : Fin 4096) (⟨(i 2).val, (i 2).isLt⟩ : Fin 1024))
      (fun a => match a with | ⟨0, _⟩ => rfl | ⟨1, _⟩ => rfl | ⟨2, _⟩ => rfl)).trans
    (taken_apply p _ _)

/-- Every index is in range, so the mask takes the gathered row everywhere and the composed value is the specification. -/
theorem out_eq_G (x : FVec F S4x4096x1024 .f32) (p : FVec F S8192x1024 .f32) : out x p = Cert.Spec.G x p :=
  funext (out_apply x p)

end Cert.RefProof

end
-- ==== Proof.RefRun.lean ====
import proofs.«210091_g81140522156176_cont_9to1_m_468_11_alg».proof.Proof.RefOps
import proofs.«210091_g81140522156176_cont_9to1_m_468_11_alg».proof.Proof.RefValue

noncomputable section

namespace Cert.RefProof

open Cert.ReferenceIdeal Idealize.ShloMosaic Idealize.ShloMosaic.TcCoe Idealize.SL.Sem Idealize.ShloMosaic.StableHlo

section Fold

variable {F : FTy → Type} [FloatOps F] [Cert.ReferenceIdeal.Facts]

attribute [local irreducible] Host.reduce Host.gather in

theorem after_v4 (V : Valuation τ sig (Elt F)) :
    after ops V (main_v4 : DevRef τ sig) = out (V (main_arg0 : DevRef τ sig)) (V (main_arg1 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

end Fold

/-- The reference runs to its end with the result at the specification's value and the two arguments as they were. -/
theorem run [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v4)
            = Cert.Spec.G (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run _ _ _).mono (fun _ h c =>
      ⟨(h c main_v4).trans ((after_v4 (launchContents m' c)).trans (out_eq_G _ _)),
        (h c main_arg0).trans (after_arg0 (launchContents m' c)),
        (h c main_arg1).trans (after_arg1 (launchContents m' c))⟩)
    (run_main m' g')

end Cert.RefProof

end
-- ==== Proof.KCommon.lean ====
import proofs.«210091_g81140522156176_cont_9to1_m_468_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210091_g81140522156176_cont_9to1_m_468_11_alg».proof.Proof.Gen.KernelIdeal
import proofs.«210091_g81140522156176_cont_9to1_m_468_11_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1

abbrev xV : Memref sig .scVector .hbm S4x4096x1024 .f32 := Memref.whole main_arg0_scv
abbrev pV : Memref sig .scVector .hbm S4096x1024 .f32 := Memref.whole main_v0_scv
abbrev oV : Memref sig .scVector .hbm S4x4096x1024 .f32 := Memref.whole main_v1_scv

def mp (d : Dev nD) : Buf (Elt F) (pLoc d) :=
  extractStridedSlice S4096x1024 ![0, 0] (m (tLoc d)) slices_S8192x1024_S4096x1024_0_0

def mres [FloatOps F] (d : Dev nD) : Buf (Elt F) (oLoc d) :=
  Cert.Spec.GQ (F := F) (m (xLoc d)) (mp m d)

theorem tileX_inb (c s : ℕ) (hc : c < 2) (hs : s < 16) :
    ∀ a, (![0, 256 * s + 128 * c, 0] : Fin 3 → Nat) a + (![4, 128, 1024] : Fin 3 → Nat) a ≤ S4x4096x1024.size a := by
  intro a; fin_cases a <;> simp <;> omega
theorem tileP_inb (c s : ℕ) (hc : c < 2) (hs : s < 16) :
    ∀ a, (![256 * s + 128 * c, 0] : Fin 2 → Nat) a + (![128, 1024] : Fin 2 → Nat) a ≤ S4096x1024.size a := by
  intro a; fin_cases a <;> simp <;> omega

def tileX (c s : ℕ) (hc : c < 2) (hs : s < 16) : Rect S4x4096x1024 :=
  Rect.unit (s := S4x4096x1024) ![0, 256 * s + 128 * c, 0] ![4, 128, 1024] (tileX_inb c s hc hs)
def tileP (c s : ℕ) (hc : c < 2) (hs : s < 16) : Rect S4096x1024 :=
  Rect.unit (s := S4096x1024) ![256 * s + 128 * c, 0] ![128, 1024] (tileP_inb c s hc hs)

abbrev xSet (c s : ℕ) (hc : c < 2) (hs : s < 16) : Finset S4x4096x1024.Idx := (xV : Memref sig .scVector .hbm S4x4096x1024 .f32).view.setOn (tileX c s hc hs).set
abbrev pSet (c s : ℕ) (hc : c < 2) (hs : s < 16) : Finset S4096x1024.Idx := (pV : Memref sig .scVector .hbm S4096x1024 .f32).view.setOn (tileP c s hc hs).set
abbrev oSet (c s : ℕ) (hc : c < 2) (hs : s < 16) : Finset S4x4096x1024.Idx := (oV : Memref sig .scVector .hbm S4x4096x1024 .f32).view.setOn (tileX c s hc hs).set

abbrev rsh : PosShare TreeShare := fullShare.left

abbrev xRows (d : Dev nD) (c s : ℕ) (hc : c < 2) (hs : s < 16) : sProp 𝕄 := xLoc d ↦[xSet c s hc hs]{rsh} m (xLoc d)
abbrev pRows (d : Dev nD) (c s : ℕ) (hc : c < 2) (hs : s < 16) : sProp 𝕄 := pLoc d ↦[pSet c s hc hs]{rsh} mp m d
abbrev oRows (d : Dev nD) (c s : ℕ) (hc : c < 2) (hs : s < 16) (f : Buf (Elt F) (oLoc d)) : sProp 𝕄 := oLoc d ↦[oSet c s hc hs]{fullShare} f

variable [FloatOps F]

abbrev goOf (d : Dev nD) (c s : ℕ) (hc : c < 2) (hs : s < 16) : sProp 𝕄 :=
  iprop(xRows m d c s hc hs ∗ pRows m d c s hc hs ∗ oRows d c s hc hs (m (oLoc d)))
abbrev tdOf (d : Dev nD) (c s : ℕ) (hc : c < 2) (hs : s < 16) : sProp 𝕄 :=
  oRows d c s hc hs (mres m d)

def P : (K (F := F)).Pay (nD := nD) (Val := Elt F) (Name := ℕ) (U := UU) where
  st := fun q d c => match q with
    | 0 => bigSep Finset.univ fun i : Fin 16 => goOf m d c.val i.val c.isLt i.isLt
  dn := fun q d c => match q with
    | 0 => bigSep Finset.univ fun i : Fin 16 => tdOf m d c.val i.val c.isLt i.isLt
  go := fun q d c i => match q with
    | 0 => goOf m d c.val i.val c.isLt i.isLt
  td := fun q d c i => match q with
    | 0 => tdOf m d c.val i.val c.isLt i.isLt
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KSlots.lean ====
import proofs.«210091_g81140522156176_cont_9to1_m_468_11_alg».proof.Proof.KCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev pB : Memref sig .scVector .vmem S4x4x1024 .f32 := Memref.whole cc0_scratch0
abbrev xB : Memref sig .scVector .vmem S4x4x4x1024 .f32 := Memref.whole cc0_scratch1
abbrev sB : Memref sig .scVector .vmem S2x4x4x1024 .f32 := Memref.whole cc0_scratch2

abbrev pS0 : Memref sig .scVector .vmem S4x1024 .f32 :=
  (pB.slice (Rect.unit (s := S4x4x1024) ![0, 0, 0] S1x4x1024.size inb_S4x4x1024_S1x4x1024_0_0_0) (fun _ => rfl)).squeeze S4x1024 squeezes_S1x4x1024_S4x1024
abbrev pS1 : Memref sig .scVector .vmem S4x1024 .f32 :=
  (pB.slice (Rect.unit (s := S4x4x1024) ![1, 0, 0] S1x4x1024.size inb_S4x4x1024_S1x4x1024_1_0_0) (fun _ => rfl)).squeeze S4x1024 squeezes_S1x4x1024_S4x1024
abbrev pS2 : Memref sig .scVector .vmem S4x1024 .f32 :=
  (pB.slice (Rect.unit (s := S4x4x1024) ![2, 0, 0] S1x4x1024.size inb_S4x4x1024_S1x4x1024_2_0_0) (fun _ => rfl)).squeeze S4x1024 squeezes_S1x4x1024_S4x1024
abbrev pS3 : Memref sig .scVector .vmem S4x1024 .f32 :=
  (pB.slice (Rect.unit (s := S4x4x1024) ![3, 0, 0] S1x4x1024.size inb_S4x4x1024_S1x4x1024_3_0_0) (fun _ => rfl)).squeeze S4x1024 squeezes_S1x4x1024_S4x1024

abbrev xS00 : Memref sig .scVector .vmem S4x1024 .f32 :=
  (xB.slice (Rect.unit (s := S4x4x4x1024) ![0, 0, 0, 0] S1x1x4x1024.size inb_S4x4x4x1024_S1x1x4x1024_0_0_0_0) (fun _ => rfl)).squeeze S4x1024 squeezes_S1x1x4x1024_S4x1024
abbrev xS01 : Memref sig .scVector .vmem S4x1024 .f32 :=
  (xB.slice (Rect.unit (s := S4x4x4x1024) ![0, 1, 0, 0] S1x1x4x1024.size inb_S4x4x4x1024_S1x1x4x1024_0_1_0_0) (fun _ => rfl)).squeeze S4x1024 squeezes_S1x1x4x1024_S4x1024
abbrev xS02 : Memref sig .scVector .vmem S4x1024 .f32 :=
  (xB.slice (Rect.unit (s := S4x4x4x1024) ![0, 2, 0, 0] S1x1x4x1024.size inb_S4x4x4x1024_S1x1x4x1024_0_2_0_0) (fun _ => rfl)).squeeze S4x1024 squeezes_S1x1x4x1024_S4x1024
abbrev xS03 : Memref sig .scVector .vmem S4x1024 .f32 :=
  (xB.slice (Rect.unit (s := S4x4x4x1024) ![0, 3, 0, 0] S1x1x4x1024.size inb_S4x4x4x1024_S1x1x4x1024_0_3_0_0) (fun _ => rfl)).squeeze S4x1024 squeezes_S1x1x4x1024_S4x1024
abbrev xS10 : Memref sig .scVector .vmem S4x1024 .f32 :=
  (xB.slice (Rect.unit (s := S4x4x4x1024) ![1, 0, 0, 0] S1x1x4x1024.size inb_S4x4x4x1024_S1x1x4x1024_1_0_0_0) (fun _ => rfl)).squeeze S4x1024 squeezes_S1x1x4x1024_S4x1024
abbrev xS11 : Memref sig .scVector .vmem S4x1024 .f32 :=
  (xB.slice (Rect.unit (s := S4x4x4x1024) ![1, 1, 0, 0] S1x1x4x1024.size inb_S4x4x4x1024_S1x1x4x1024_1_1_0_0) (fun _ => rfl)).squeeze S4x1024 squeezes_S1x1x4x1024_S4x1024
abbrev xS12 : Memref sig .scVector .vmem S4x1024 .f32 :=
  (xB.slice (Rect.unit (s := S4x4x4x1024) ![1, 2, 0, 0] S1x1x4x1024.size inb_S4x4x4x1024_S1x1x4x1024_1_2_0_0) (fun _ => rfl)).squeeze S4x1024 squeezes_S1x1x4x1024_S4x1024
abbrev xS13 : Memref sig .scVector .vmem S4x1024 .f32 :=
  (xB.slice (Rect.unit (s := S4x4x4x1024) ![1, 3, 0, 0] S1x1x4x1024.size inb_S4x4x4x1024_S1x1x4x1024_1_3_0_0) (fun _ => rfl)).squeeze S4x1024 squeezes_S1x1x4x1024_S4x1024
abbrev xS20 : Memref sig .scVector .vmem S4x1024 .f32 :=
  (xB.slice (Rect.unit (s := S4x4x4x1024) ![2, 0, 0, 0] S1x1x4x1024.size inb_S4x4x4x1024_S1x1x4x1024_2_0_0_0) (fun _ => rfl)).squeeze S4x1024 squeezes_S1x1x4x1024_S4x1024
abbrev xS21 : Memref sig .scVector .vmem S4x1024 .f32 :=
  (xB.slice (Rect.unit (s := S4x4x4x1024) ![2, 1, 0, 0] S1x1x4x1024.size inb_S4x4x4x1024_S1x1x4x1024_2_1_0_0) (fun _ => rfl)).squeeze S4x1024 squeezes_S1x1x4x1024_S4x1024
abbrev xS22 : Memref sig .scVector .vmem S4x1024 .f32 :=
  (xB.slice (Rect.unit (s := S4x4x4x1024) ![2, 2, 0, 0] S1x1x4x1024.size inb_S4x4x4x1024_S1x1x4x1024_2_2_0_0) (fun _ => rfl)).squeeze S4x1024 squeezes_S1x1x4x1024_S4x1024
abbrev xS23 : Memref sig .scVector .vmem S4x1024 .f32 :=
  (xB.slice (Rect.unit (s := S4x4x4x1024) ![2, 3, 0, 0] S1x1x4x1024.size inb_S4x4x4x1024_S1x1x4x1024_2_3_0_0) (fun _ => rfl)).squeeze S4x1024 squeezes_S1x1x4x1024_S4x1024
abbrev xS30 : Memref sig .scVector .vmem S4x1024 .f32 :=
  (xB.slice (Rect.unit (s := S4x4x4x1024) ![3, 0, 0, 0] S1x1x4x1024.size inb_S4x4x4x1024_S1x1x4x1024_3_0_0_0) (fun _ => rfl)).squeeze S4x1024 squeezes_S1x1x4x1024_S4x1024
abbrev xS31 : Memref sig .scVector .vmem S4x1024 .f32 :=
  (xB.slice (Rect.unit (s := S4x4x4x1024) ![3, 1, 0, 0] S1x1x4x1024.size inb_S4x4x4x1024_S1x1x4x1024_3_1_0_0) (fun _ => rfl)).squeeze S4x1024 squeezes_S1x1x4x1024_S4x1024
abbrev xS32 : Memref sig .scVector .vmem S4x1024 .f32 :=
  (xB.slice (Rect.unit (s := S4x4x4x1024) ![3, 2, 0, 0] S1x1x4x1024.size inb_S4x4x4x1024_S1x1x4x1024_3_2_0_0) (fun _ => rfl)).squeeze S4x1024 squeezes_S1x1x4x1024_S4x1024
abbrev xS33 : Memref sig .scVector .vmem S4x1024 .f32 :=
  (xB.slice (Rect.unit (s := S4x4x4x1024) ![3, 3, 0, 0] S1x1x4x1024.size inb_S4x4x4x1024_S1x1x4x1024_3_3_0_0) (fun _ => rfl)).squeeze S4x1024 squeezes_S1x1x4x1024_S4x1024

theorem pointsTo_cover {T : Type} [Fintype T] [DecidableEq T] {ℓ : Loc nD τ sig} (G : T → Finset (Idx ℓ))
    (hd : ∀ t t', t ≠ t' → Disjoint (G t) (G t')) (hc : ∀ x, ∃ t, x ∈ G t) (f : Buf (Elt F) ℓ) :
    (ℓ ↦{fullShare} f : sProp 𝕄) = bigSep Finset.univ fun t : T => ℓ ↦[G t]{fullShare} f := by
  have hcov : (Finset.univ : Finset T).biUnion G = Finset.univ := by
    ext x; simp only [Finset.mem_biUnion, Finset.mem_univ, true_and, iff_true]; exact hc x
  rw [← hcov, pointsTo_biUnion Finset.univ (ℓ := ℓ) G fun t _ t' _ h => hd t t' h]

theorem pointsTo_cover_join {T : Type} [Fintype T] [DecidableEq T] [Inhabited T] {ℓ : Loc nD τ sig} (G : T → Finset (Idx ℓ))
    (hd : ∀ t t', t ≠ t' → Disjoint (G t) (G t')) (hc : ∀ x, ∃ t, x ∈ G t) (fs : T → Buf (Elt F) ℓ) :
    (bigSep Finset.univ fun t : T => ℓ ↦[G t]{fullShare} fs t) ⊢ (iprop(∃ f, ℓ ↦{fullShare} f) : sProp 𝕄) := by
  have hcov : (Finset.univ : Finset T).biUnion G = Finset.univ := by
    ext x; simp only [Finset.mem_biUnion, Finset.mem_univ, true_and, iff_true]; exact hc x
  refine (pointsTo_biUnion_join Finset.univ G fs (fs default) fun t _ t' _ h => hd t t' h).trans ?_
  iintro ⟨%g, -, Hg⟩
  rw [hcov]
  iexists g; iexact Hg

theorem sep_congr' {A A' B B' : sProp 𝕄} (h1 : A = A') (h2 : B = B') : (iprop(A ∗ B) : sProp 𝕄) = iprop(A' ∗ B') := by rw [h1, h2]

theorem pInb (k : Fin 4) : ∀ a, (![k.val, 0, 0] : Fin 3 → Nat) a + S1x4x1024.size a ≤ S4x4x1024.size a := by
  intro a; fin_cases a <;> simp <;> omega
abbrev pRect (k : Fin 4) : Rect S4x4x1024 := Rect.unit (s := S4x4x1024) ![k.val, 0, 0] S1x4x1024.size (pInb k)

theorem pRect_disjoint (k k' : Fin 4) (h : k ≠ k') : Disjoint (pRect k).set (pRect k').set := by
  have hv : k.val ≠ k'.val := fun e => h (Fin.ext e)
  exact Rect.unit_disjoint 0 (by simp; omega)

theorem pRect_cover (x : S4x4x1024.Idx) : ∃ k : Fin 4, x ∈ (pRect k).set := by
  refine ⟨⟨(x 0).val, (x 0).isLt⟩, Rect.mem_set_unit.mpr fun a => ?_⟩
  have h1 : (x 1).val < 4 := (x 1).isLt
  have h2 : (x 2).val < 1024 := (x 2).isLt
  match a with
  | 0 => simp
  | 1 => simp; omega
  | 2 => simp; omega

theorem pB_slot_set (off : Fin 3 → Nat) (inb : ∀ a, off a + S1x4x1024.size a ≤ S4x4x1024.size a) :
    (((pB : Memref sig .scVector .vmem S4x4x1024 .f32).slice (Rect.unit (s := S4x4x1024) off S1x4x1024.size inb) (fun _ => rfl)).squeeze S4x1024
        squeezes_S1x4x1024_S4x1024).view.set
      = (Rect.unit (s := S4x4x1024) off S1x4x1024.size inb).set := by
  show (((View.whole (cc0_scratch0 : Ref sig .scVector)).slice (Rect.unit (s := S4x4x1024) off S1x4x1024.size inb)).reshape S4x1024
      squeezes_S1x4x1024_S4x1024.numel_eq).set = _
  rw [View.set_reshape, View.set_slice_whole]

theorem pS0_set : (pS0 : Memref sig .scVector .vmem S4x1024 .f32).view.set = (pRect 0).set := pB_slot_set _ _
theorem pS1_set : (pS1 : Memref sig .scVector .vmem S4x1024 .f32).view.set = (pRect 1).set := pB_slot_set _ _
theorem pS2_set : (pS2 : Memref sig .scVector .vmem S4x1024 .f32).view.set = (pRect 2).set := pB_slot_set _ _
theorem pS3_set : (pS3 : Memref sig .scVector .vmem S4x1024 .f32).view.set = (pRect 3).set := pB_slot_set _ _

theorem pS0_pts (d : Dev nD) (c : Fin τ.nSC) (i : Fin τ.nSub) (f : Buf (Elt F) ((V d c i).loc cc0_scratch0)) :
    (pS0.view.loc (V d c i) ↦[pS0.view.set]{fullShare} f : sProp 𝕄) = ((V d c i).loc cc0_scratch0 ↦[(pRect 0).set]{fullShare} f) := by rw [pS0_set]
theorem pS1_pts (d : Dev nD) (c : Fin τ.nSC) (i : Fin τ.nSub) (f : Buf (Elt F) ((V d c i).loc cc0_scratch0)) :
    (pS1.view.loc (V d c i) ↦[pS1.view.set]{fullShare} f : sProp 𝕄) = ((V d c i).loc cc0_scratch0 ↦[(pRect 1).set]{fullShare} f) := by rw [pS1_set]
theorem pS2_pts (d : Dev nD) (c : Fin τ.nSC) (i : Fin τ.nSub) (f : Buf (Elt F) ((V d c i).loc cc0_scratch0)) :
    (pS2.view.loc (V d c i) ↦[pS2.view.set]{fullShare} f : sProp 𝕄) = ((V d c i).loc cc0_scratch0 ↦[(pRect 2).set]{fullShare} f) := by rw [pS2_set]
theorem pS3_pts (d : Dev nD) (c : Fin τ.nSC) (i : Fin τ.nSub) (f : Buf (Elt F) ((V d c i).loc cc0_scratch0)) :
    (pS3.view.loc (V d c i) ↦[pS3.view.set]{fullShare} f : sProp 𝕄) = ((V d c i).loc cc0_scratch0 ↦[(pRect 3).set]{fullShare} f) := by rw [pS3_set]

theorem univ_fin4 : (Finset.univ : Finset (Fin 4)) = {0, 1, 2, 3} := by decide
theorem bigSep_fin4 (Φ : Fin 4 → sProp 𝕄) : bigSep Finset.univ Φ = iprop(Φ 0 ∗ Φ 1 ∗ Φ 2 ∗ Φ 3) := by
  rw [univ_fin4, SparseCore.bigSep_insert' (by decide), SparseCore.bigSep_insert' (by decide), SparseCore.bigSep_insert' (by decide), bigSep_singleton]

/-- The table-row buffer held whole is its four slots held one by one at the same contents. -/
theorem pvb_slots (d : Dev nD) (c : Fin τ.nSC) (i : Fin τ.nSub) (f : Buf (Elt F) ((V d c i).loc cc0_scratch0)) :
    ((V d c i).loc cc0_scratch0 ↦{fullShare} f : sProp 𝕄)
      = iprop((pS0.view.loc (V d c i) ↦[pS0.view.set]{fullShare} f)
        ∗ (pS1.view.loc (V d c i) ↦[pS1.view.set]{fullShare} f)
        ∗ (pS2.view.loc (V d c i) ↦[pS2.view.set]{fullShare} f)
        ∗ (pS3.view.loc (V d c i) ↦[pS3.view.set]{fullShare} f)) := by
  exact (pointsTo_cover (ℓ := (V d c i).loc cc0_scratch0) (fun k : Fin 4 => (pRect k).set) pRect_disjoint pRect_cover f).trans
    ((bigSep_fin4 _).trans (sep_congr' (pS0_pts d c i f).symm (sep_congr' (pS1_pts d c i f).symm (sep_congr' (pS2_pts d c i f).symm ((pS3_pts d c i f).symm)))))

theorem pvb_join (d : Dev nD) (c : Fin τ.nSC) (i : Fin τ.nSub) (f0 f1 f2 f3 : Buf (Elt F) ((V d c i).loc cc0_scratch0)) :
    iprop((pS0.view.loc (V d c i) ↦[pS0.view.set]{fullShare} f0)
        ∗ (pS1.view.loc (V d c i) ↦[pS1.view.set]{fullShare} f1)
        ∗ (pS2.view.loc (V d c i) ↦[pS2.view.set]{fullShare} f2)
        ∗ (pS3.view.loc (V d c i) ↦[pS3.view.set]{fullShare} f3))
      ⊢ (iprop(∃ f, (V d c i).loc cc0_scratch0 ↦{fullShare} f) : sProp 𝕄) := by
  refine Entails.trans (Entails.of_eq ?_)
    (pointsTo_cover_join (ℓ := (V d c i).loc cc0_scratch0) (fun k : Fin 4 => (pRect k).set) pRect_disjoint pRect_cover ![f0, f1, f2, f3])
  exact (sep_congr' (pS0_pts d c i f0) (sep_congr' (pS1_pts d c i f1) (sep_congr' (pS2_pts d c i f2) ((pS3_pts d c i f3))))).trans
    (bigSep_fin4 (fun k : Fin 4 => ((V d c i).loc cc0_scratch0 ↦[(pRect k).set]{fullShare} ![f0, f1, f2, f3] k : sProp 𝕄))).symm

theorem xInb (k b : Fin 4) : ∀ a, (![k.val, b.val, 0, 0] : Fin 4 → Nat) a + S1x1x4x1024.size a ≤ S4x4x4x1024.size a := by
  intro a; fin_cases a <;> simp <;> omega
abbrev xRect (kb : Fin 4 × Fin 4) : Rect S4x4x4x1024 :=
  Rect.unit (s := S4x4x4x1024) ![kb.1.val, kb.2.val, 0, 0] S1x1x4x1024.size (xInb kb.1 kb.2)

theorem xRect_disjoint (kb kb' : Fin 4 × Fin 4) (h : kb ≠ kb') : Disjoint (xRect kb).set (xRect kb').set := by
  by_cases h0 : kb.1 = kb'.1
  · have hv : kb.2.val ≠ kb'.2.val := fun e => h (Prod.ext h0 (Fin.ext e))
    exact Rect.unit_disjoint 1 (by simp; omega)
  · have hv : kb.1.val ≠ kb'.1.val := fun e => h0 (Fin.ext e)
    exact Rect.unit_disjoint 0 (by simp; omega)

theorem xRect_cover (x : S4x4x4x1024.Idx) : ∃ kb : Fin 4 × Fin 4, x ∈ (xRect kb).set := by
  refine ⟨(⟨(x 0).val, (x 0).isLt⟩, ⟨(x 1).val, (x 1).isLt⟩), Rect.mem_set_unit.mpr fun a => ?_⟩
  have h2 : (x 2).val < 4 := (x 2).isLt
  have h3 : (x 3).val < 1024 := (x 3).isLt
  match a with
  | 0 => simp
  | 1 => simp
  | 2 => simp; omega
  | 3 => simp; omega

theorem xB_slot_set (off : Fin 4 → Nat) (inb : ∀ a, off a + S1x1x4x1024.size a ≤ S4x4x4x1024.size a) :
    (((xB : Memref sig .scVector .vmem S4x4x4x1024 .f32).slice (Rect.unit (s := S4x4x4x1024) off S1x1x4x1024.size inb) (fun _ => rfl)).squeeze S4x1024
        squeezes_S1x1x4x1024_S4x1024).view.set
      = (Rect.unit (s := S4x4x4x1024) off S1x1x4x1024.size inb).set := by
  show (((View.whole (cc0_scratch1 : Ref sig .scVector)).slice (Rect.unit (s := S4x4x4x1024) off S1x1x4x1024.size inb)).reshape S4x1024
      squeezes_S1x1x4x1024_S4x1024.numel_eq).set = _
  rw [View.set_reshape, View.set_slice_whole]

theorem xS00_set : (xS00 : Memref sig .scVector .vmem S4x1024 .f32).view.set = (xRect (0, 0)).set := xB_slot_set _ _
theorem xS01_set : (xS01 : Memref sig .scVector .vmem S4x1024 .f32).view.set = (xRect (0, 1)).set := xB_slot_set _ _
theorem xS02_set : (xS02 : Memref sig .scVector .vmem S4x1024 .f32).view.set = (xRect (0, 2)).set := xB_slot_set _ _
theorem xS03_set : (xS03 : Memref sig .scVector .vmem S4x1024 .f32).view.set = (xRect (0, 3)).set := xB_slot_set _ _
theorem xS10_set : (xS10 : Memref sig .scVector .vmem S4x1024 .f32).view.set = (xRect (1, 0)).set := xB_slot_set _ _
theorem xS11_set : (xS11 : Memref sig .scVector .vmem S4x1024 .f32).view.set = (xRect (1, 1)).set := xB_slot_set _ _
theorem xS12_set : (xS12 : Memref sig .scVector .vmem S4x1024 .f32).view.set = (xRect (1, 2)).set := xB_slot_set _ _
theorem xS13_set : (xS13 : Memref sig .scVector .vmem S4x1024 .f32).view.set = (xRect (1, 3)).set := xB_slot_set _ _
theorem xS20_set : (xS20 : Memref sig .scVector .vmem S4x1024 .f32).view.set = (xRect (2, 0)).set := xB_slot_set _ _
theorem xS21_set : (xS21 : Memref sig .scVector .vmem S4x1024 .f32).view.set = (xRect (2, 1)).set := xB_slot_set _ _
theorem xS22_set : (xS22 : Memref sig .scVector .vmem S4x1024 .f32).view.set = (xRect (2, 2)).set := xB_slot_set _ _
theorem xS23_set : (xS23 : Memref sig .scVector .vmem S4x1024 .f32).view.set = (xRect (2, 3)).set := xB_slot_set _ _
theorem xS30_set : (xS30 : Memref sig .scVector .vmem S4x1024 .f32).view.set = (xRect (3, 0)).set := xB_slot_set _ _
theorem xS31_set : (xS31 : Memref sig .scVector .vmem S4x1024 .f32).view.set = (xRect (3, 1)).set := xB_slot_set _ _
theorem xS32_set : (xS32 : Memref sig .scVector .vmem S4x1024 .f32).view.set = (xRect (3, 2)).set := xB_slot_set _ _
theorem xS33_set : (xS33 : Memref sig .scVector .vmem S4x1024 .f32).view.set = (xRect (3, 3)).set := xB_slot_set _ _

theorem xS00_pts (d : Dev nD) (c : Fin τ.nSC) (i : Fin τ.nSub) (f : Buf (Elt F) ((V d c i).loc cc0_scratch1)) :
    (xS00.view.loc (V d c i) ↦[xS00.view.set]{fullShare} f : sProp 𝕄) = ((V d c i).loc cc0_scratch1 ↦[(xRect (0, 0)).set]{fullShare} f) := by rw [xS00_set]
theorem xS01_pts (d : Dev nD) (c : Fin τ.nSC) (i : Fin τ.nSub) (f : Buf (Elt F) ((V d c i).loc cc0_scratch1)) :
    (xS01.view.loc (V d c i) ↦[xS01.view.set]{fullShare} f : sProp 𝕄) = ((V d c i).loc cc0_scratch1 ↦[(xRect (0, 1)).set]{fullShare} f) := by rw [xS01_set]
theorem xS02_pts (d : Dev nD) (c : Fin τ.nSC) (i : Fin τ.nSub) (f : Buf (Elt F) ((V d c i).loc cc0_scratch1)) :
    (xS02.view.loc (V d c i) ↦[xS02.view.set]{fullShare} f : sProp 𝕄) = ((V d c i).loc cc0_scratch1 ↦[(xRect (0, 2)).set]{fullShare} f) := by rw [xS02_set]
theorem xS03_pts (d : Dev nD) (c : Fin τ.nSC) (i : Fin τ.nSub) (f : Buf (Elt F) ((V d c i).loc cc0_scratch1)) :
    (xS03.view.loc (V d c i) ↦[xS03.view.set]{fullShare} f : sProp 𝕄) = ((V d c i).loc cc0_scratch1 ↦[(xRect (0, 3)).set]{fullShare} f) := by rw [xS03_set]
theorem xS10_pts (d : Dev nD) (c : Fin τ.nSC) (i : Fin τ.nSub) (f : Buf (Elt F) ((V d c i).loc cc0_scratch1)) :
    (xS10.view.loc (V d c i) ↦[xS10.view.set]{fullShare} f : sProp 𝕄) = ((V d c i).loc cc0_scratch1 ↦[(xRect (1, 0)).set]{fullShare} f) := by rw [xS10_set]
theorem xS11_pts (d : Dev nD) (c : Fin τ.nSC) (i : Fin τ.nSub) (f : Buf (Elt F) ((V d c i).loc cc0_scratch1)) :
    (xS11.view.loc (V d c i) ↦[xS11.view.set]{fullShare} f : sProp 𝕄) = ((V d c i).loc cc0_scratch1 ↦[(xRect (1, 1)).set]{fullShare} f) := by rw [xS11_set]
theorem xS12_pts (d : Dev nD) (c : Fin τ.nSC) (i : Fin τ.nSub) (f : Buf (Elt F) ((V d c i).loc cc0_scratch1)) :
    (xS12.view.loc (V d c i) ↦[xS12.view.set]{fullShare} f : sProp 𝕄) = ((V d c i).loc cc0_scratch1 ↦[(xRect (1, 2)).set]{fullShare} f) := by rw [xS12_set]
theorem xS13_pts (d : Dev nD) (c : Fin τ.nSC) (i : Fin τ.nSub) (f : Buf (Elt F) ((V d c i).loc cc0_scratch1)) :
    (xS13.view.loc (V d c i) ↦[xS13.view.set]{fullShare} f : sProp 𝕄) = ((V d c i).loc cc0_scratch1 ↦[(xRect (1, 3)).set]{fullShare} f) := by rw [xS13_set]
theorem xS20_pts (d : Dev nD) (c : Fin τ.nSC) (i : Fin τ.nSub) (f : Buf (Elt F) ((V d c i).loc cc0_scratch1)) :
    (xS20.view.loc (V d c i) ↦[xS20.view.set]{fullShare} f : sProp 𝕄) = ((V d c i).loc cc0_scratch1 ↦[(xRect (2, 0)).set]{fullShare} f) := by rw [xS20_set]
theorem xS21_pts (d : Dev nD) (c : Fin τ.nSC) (i : Fin τ.nSub) (f : Buf (Elt F) ((V d c i).loc cc0_scratch1)) :
    (xS21.view.loc (V d c i) ↦[xS21.view.set]{fullShare} f : sProp 𝕄) = ((V d c i).loc cc0_scratch1 ↦[(xRect (2, 1)).set]{fullShare} f) := by rw [xS21_set]
theorem xS22_pts (d : Dev nD) (c : Fin τ.nSC) (i : Fin τ.nSub) (f : Buf (Elt F) ((V d c i).loc cc0_scratch1)) :
    (xS22.view.loc (V d c i) ↦[xS22.view.set]{fullShare} f : sProp 𝕄) = ((V d c i).loc cc0_scratch1 ↦[(xRect (2, 2)).set]{fullShare} f) := by rw [xS22_set]
theorem xS23_pts (d : Dev nD) (c : Fin τ.nSC) (i : Fin τ.nSub) (f : Buf (Elt F) ((V d c i).loc cc0_scratch1)) :
    (xS23.view.loc (V d c i) ↦[xS23.view.set]{fullShare} f : sProp 𝕄) = ((V d c i).loc cc0_scratch1 ↦[(xRect (2, 3)).set]{fullShare} f) := by rw [xS23_set]
theorem xS30_pts (d : Dev nD) (c : Fin τ.nSC) (i : Fin τ.nSub) (f : Buf (Elt F) ((V d c i).loc cc0_scratch1)) :
    (xS30.view.loc (V d c i) ↦[xS30.view.set]{fullShare} f : sProp 𝕄) = ((V d c i).loc cc0_scratch1 ↦[(xRect (3, 0)).set]{fullShare} f) := by rw [xS30_set]
theorem xS31_pts (d : Dev nD) (c : Fin τ.nSC) (i : Fin τ.nSub) (f : Buf (Elt F) ((V d c i).loc cc0_scratch1)) :
    (xS31.view.loc (V d c i) ↦[xS31.view.set]{fullShare} f : sProp 𝕄) = ((V d c i).loc cc0_scratch1 ↦[(xRect (3, 1)).set]{fullShare} f) := by rw [xS31_set]
theorem xS32_pts (d : Dev nD) (c : Fin τ.nSC) (i : Fin τ.nSub) (f : Buf (Elt F) ((V d c i).loc cc0_scratch1)) :
    (xS32.view.loc (V d c i) ↦[xS32.view.set]{fullShare} f : sProp 𝕄) = ((V d c i).loc cc0_scratch1 ↦[(xRect (3, 2)).set]{fullShare} f) := by rw [xS32_set]
theorem xS33_pts (d : Dev nD) (c : Fin τ.nSC) (i : Fin τ.nSub) (f : Buf (Elt F) ((V d c i).loc cc0_scratch1)) :
    (xS33.view.loc (V d c i) ↦[xS33.view.set]{fullShare} f : sProp 𝕄) = ((V d c i).loc cc0_scratch1 ↦[(xRect (3, 3)).set]{fullShare} f) := by rw [xS33_set]

theorem univ_fin4x4 : (Finset.univ : Finset (Fin 4 × Fin 4))
    = {(0, 0), (0, 1), (0, 2), (0, 3), (1, 0), (1, 1), (1, 2), (1, 3), (2, 0), (2, 1), (2, 2), (2, 3), (3, 0), (3, 1), (3, 2), (3, 3)} := by decide
theorem bigSep_fin4x4 (Φ : Fin 4 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗ Φ (3, 0) ∗ Φ (3, 1) ∗ Φ (3, 2) ∗ Φ (3, 3)) := by
  rw [univ_fin4x4, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The activation buffer held whole is its sixteen slots held one by one at the same contents. -/
theorem xvb_slots (d : Dev nD) (c : Fin τ.nSC) (i : Fin τ.nSub) (f : Buf (Elt F) ((V d c i).loc cc0_scratch1)) :
    ((V d c i).loc cc0_scratch1 ↦{fullShare} f : sProp 𝕄)
      = iprop((xS00.view.loc (V d c i) ↦[xS00.view.set]{fullShare} f)
        ∗ (xS01.view.loc (V d c i) ↦[xS01.view.set]{fullShare} f)
        ∗ (xS02.view.loc (V d c i) ↦[xS02.view.set]{fullShare} f)
        ∗ (xS03.view.loc (V d c i) ↦[xS03.view.set]{fullShare} f)
        ∗ (xS10.view.loc (V d c i) ↦[xS10.view.set]{fullShare} f)
        ∗ (xS11.view.loc (V d c i) ↦[xS11.view.set]{fullShare} f)
        ∗ (xS12.view.loc (V d c i) ↦[xS12.view.set]{fullShare} f)
        ∗ (xS13.view.loc (V d c i) ↦[xS13.view.set]{fullShare} f)
        ∗ (xS20.view.loc (V d c i) ↦[xS20.view.set]{fullShare} f)
        ∗ (xS21.view.loc (V d c i) ↦[xS21.view.set]{fullShare} f)
        ∗ (xS22.view.loc (V d c i) ↦[xS22.view.set]{fullShare} f)
        ∗ (xS23.view.loc (V d c i) ↦[xS23.view.set]{fullShare} f)
        ∗ (xS30.view.loc (V d c i) ↦[xS30.view.set]{fullShare} f)
        ∗ (xS31.view.loc (V d c i) ↦[xS31.view.set]{fullShare} f)
        ∗ (xS32.view.loc (V d c i) ↦[xS32.view.set]{fullShare} f)
        ∗ (xS33.view.loc (V d c i) ↦[xS33.view.set]{fullShare} f)) := by
  exact (pointsTo_cover (ℓ := (V d c i).loc cc0_scratch1) (fun kb : Fin 4 × Fin 4 => (xRect kb).set) xRect_disjoint xRect_cover f).trans
    ((bigSep_fin4x4 _).trans (sep_congr' (xS00_pts d c i f).symm (sep_congr' (xS01_pts d c i f).symm (sep_congr' (xS02_pts d c i f).symm (sep_congr' (xS03_pts d c i f).symm (sep_congr' (xS10_pts d c i f).symm (sep_congr' (xS11_pts d c i f).symm (sep_congr' (xS12_pts d c i f).symm (sep_congr' (xS13_pts d c i f).symm (sep_congr' (xS20_pts d c i f).symm (sep_congr' (xS21_pts d c i f).symm (sep_congr' (xS22_pts d c i f).symm (sep_congr' (xS23_pts d c i f).symm (sep_congr' (xS30_pts d c i f).symm (sep_congr' (xS31_pts d c i f).symm (sep_congr' (xS32_pts d c i f).symm ((xS33_pts d c i f).symm)))))))))))))))))

theorem xvb_join (d : Dev nD) (c : Fin τ.nSC) (i : Fin τ.nSub)
    (f00 f01 f02 f03 f10 f11 f12 f13 f20 f21 f22 f23 f30 f31 f32 f33 : Buf (Elt F) ((V d c i).loc cc0_scratch1)) :
    iprop((xS00.view.loc (V d c i) ↦[xS00.view.set]{fullShare} f00)
        ∗ (xS01.view.loc (V d c i) ↦[xS01.view.set]{fullShare} f01)
        ∗ (xS02.view.loc (V d c i) ↦[xS02.view.set]{fullShare} f02)
        ∗ (xS03.view.loc (V d c i) ↦[xS03.view.set]{fullShare} f03)
        ∗ (xS10.view.loc (V d c i) ↦[xS10.view.set]{fullShare} f10)
        ∗ (xS11.view.loc (V d c i) ↦[xS11.view.set]{fullShare} f11)
        ∗ (xS12.view.loc (V d c i) ↦[xS12.view.set]{fullShare} f12)
        ∗ (xS13.view.loc (V d c i) ↦[xS13.view.set]{fullShare} f13)
        ∗ (xS20.view.loc (V d c i) ↦[xS20.view.set]{fullShare} f20)
        ∗ (xS21.view.loc (V d c i) ↦[xS21.view.set]{fullShare} f21)
        ∗ (xS22.view.loc (V d c i) ↦[xS22.view.set]{fullShare} f22)
        ∗ (xS23.view.loc (V d c i) ↦[xS23.view.set]{fullShare} f23)
        ∗ (xS30.view.loc (V d c i) ↦[xS30.view.set]{fullShare} f30)
        ∗ (xS31.view.loc (V d c i) ↦[xS31.view.set]{fullShare} f31)
        ∗ (xS32.view.loc (V d c i) ↦[xS32.view.set]{fullShare} f32)
        ∗ (xS33.view.loc (V d c i) ↦[xS33.view.set]{fullShare} f33))
      ⊢ (iprop(∃ f, (V d c i).loc cc0_scratch1 ↦{fullShare} f) : sProp 𝕄) := by
  refine Entails.trans (Entails.of_eq ?_)
    (pointsTo_cover_join (ℓ := (V d c i).loc cc0_scratch1) (fun kb : Fin 4 × Fin 4 => (xRect kb).set) xRect_disjoint xRect_cover
      (fun kb => ![![f00, f01, f02, f03], ![f10, f11, f12, f13], ![f20, f21, f22, f23], ![f30, f31, f32, f33]] kb.1 kb.2))
  exact (sep_congr' (xS00_pts d c i f00) (sep_congr' (xS01_pts d c i f01) (sep_congr' (xS02_pts d c i f02) (sep_congr' (xS03_pts d c i f03) (sep_congr' (xS10_pts d c i f10) (sep_congr' (xS11_pts d c i f11) (sep_congr' (xS12_pts d c i f12) (sep_congr' (xS13_pts d c i f13) (sep_congr' (xS20_pts d c i f20) (sep_congr' (xS21_pts d c i f21) (sep_congr' (xS22_pts d c i f22) (sep_congr' (xS23_pts d c i f23) (sep_congr' (xS30_pts d c i f30) (sep_congr' (xS31_pts d c i f31) (sep_congr' (xS32_pts d c i f32) ((xS33_pts d c i f33))))))))))))))))).trans
    (bigSep_fin4x4 (fun kb : Fin 4 × Fin 4 => ((V d c i).loc cc0_scratch1 ↦[(xRect kb).set]{fullShare} ![![f00, f01, f02, f03], ![f10, f11, f12, f13], ![f20, f21, f22, f23], ![f30, f31, f32, f33]] kb.1 kb.2 : sProp 𝕄))).symm

end Cert.Proof.KI

end
-- ==== Proof.KFam.lean ====
import proofs.«210091_g81140522156176_cont_9to1_m_468_11_alg».proof.Proof.KSlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev r0 (L : grid0.Coords) : ℕ := 256 * (L 1).val + 128 * (L 0).val

abbrev pWinOf (off : Fin 2 → Nat) (h : ∀ a, off a + S4x1024.size a ≤ S4096x1024.size a) : Memref sig .scVector .hbm S4x1024 .f32 :=
  pV.slice (Rect.unit (s := S4096x1024) off S4x1024.size h) (fun _ => rfl)
abbrev xWinOf (off : Fin 3 → Nat) (h : ∀ a, off a + S1x4x1024.size a ≤ S4x4096x1024.size a) : Memref sig .scVector .hbm S4x1024 .f32 :=
  (xV.slice (Rect.unit (s := S4x4096x1024) off S1x4x1024.size h) (fun _ => rfl)).squeeze S4x1024 squeezes_S1x4x1024_S4x1024
abbrev oWinOf (off : Fin 3 → Nat) (h : ∀ a, off a + S1x4x1024.size a ≤ S4x4096x1024.size a) : Memref sig .scVector .hbm S4x1024 .f32 :=
  (oV.slice (Rect.unit (s := S4x4096x1024) off S1x4x1024.size h) (fun _ => rfl)).squeeze S4x1024 squeezes_S1x4x1024_S4x1024

theorem r0_def (L : grid0.Coords) : r0 L = 256 * (L 1).val + 128 * (L 0).val := rfl
theorem r0_le (L : grid0.Coords) : r0 L + 128 ≤ 4096 := by
  have h0 : (L 0).val < 2 := (L 0).isLt
  have h1 : (L 1).val < 16 := (L 1).isLt
  rw [r0_def]; omega

theorem PW_inb (L : grid0.Coords) (c : ℕ) (hc : c < 32) : ∀ a, (![r0 L + 4 * c, 0] : Fin 2 → Nat) a + S4x1024.size a ≤ S4096x1024.size a := by
  have hr := r0_le L
  intro a; fin_cases a <;> simp <;> omega
theorem XW_inb (L : grid0.Coords) (c b : ℕ) (hc : c < 32) (hb : b < 4) :
    ∀ a, (![b, r0 L + 4 * c, 0] : Fin 3 → Nat) a + S1x4x1024.size a ≤ S4x4096x1024.size a := by
  have hr := r0_le L
  intro a; fin_cases a <;> simp <;> omega

abbrev PW (L : grid0.Coords) (c : ℕ) (hc : c < 32) : Memref sig .scVector .hbm S4x1024 .f32 := pWinOf ![r0 L + 4 * c, 0] (PW_inb L c hc)
abbrev XW (L : grid0.Coords) (c b : ℕ) (hc : c < 32) (hb : b < 4) : Memref sig .scVector .hbm S4x1024 .f32 := xWinOf ![b, r0 L + 4 * c, 0] (XW_inb L c b hc hb)
abbrev OW (L : grid0.Coords) (c b : ℕ) (hc : c < 32) (hb : b < 4) : Memref sig .scVector .hbm S4x1024 .f32 := oWinOf ![b, r0 L + 4 * c, 0] (XW_inb L c b hc hb)

def srcChunk (d : Dev nD) (L : grid0.Coords) (fp : Buf (Elt F) (pLoc d)) (fx : Buf (Elt F) (xLoc d)) (c : ℕ) (hc : c < 32) : sProp 𝕄 :=
  iprop(((PW L c hc).view.loc (thr d L) ↦[(PW L c hc).view.set]{rsh} fp)
    ∗ ((XW L c 0 hc (by decide)).view.loc (thr d L) ↦[(XW L c 0 hc (by decide)).view.set]{rsh} fx)
    ∗ ((XW L c 1 hc (by decide)).view.loc (thr d L) ↦[(XW L c 1 hc (by decide)).view.set]{rsh} fx)
    ∗ ((XW L c 2 hc (by decide)).view.loc (thr d L) ↦[(XW L c 2 hc (by decide)).view.set]{rsh} fx)
    ∗ ((XW L c 3 hc (by decide)).view.loc (thr d L) ↦[(XW L c 3 hc (by decide)).view.set]{rsh} fx))

def outChunk (d : Dev nD) (L : grid0.Coords) (fo : Buf (Elt F) (oLoc d)) (c : ℕ) (hc : c < 32) : sProp 𝕄 :=
  iprop(((OW L c 0 hc (by decide)).view.loc (thr d L) ↦[(OW L c 0 hc (by decide)).view.set]{fullShare} fo)
    ∗ ((OW L c 1 hc (by decide)).view.loc (thr d L) ↦[(OW L c 1 hc (by decide)).view.set]{fullShare} fo)
    ∗ ((OW L c 2 hc (by decide)).view.loc (thr d L) ↦[(OW L c 2 hc (by decide)).view.set]{fullShare} fo)
    ∗ ((OW L c 3 hc (by decide)).view.loc (thr d L) ↦[(OW L c 3 hc (by decide)).view.set]{fullShare} fo))

def srcFrom (d : Dev nD) (L : grid0.Coords) (fp : Buf (Elt F) (pLoc d)) (fx : Buf (Elt F) (xLoc d)) (lo : ℕ) : sProp 𝕄 :=
  bigSep (Finset.univ.filter fun c : Fin 32 => lo ≤ c.val) fun c => srcChunk d L fp fx c.val c.isLt
def outFrom (d : Dev nD) (L : grid0.Coords) (fo : Buf (Elt F) (oLoc d)) (lo : ℕ) : sProp 𝕄 :=
  bigSep (Finset.univ.filter fun c : Fin 32 => lo ≤ c.val) fun c => outChunk d L fo c.val c.isLt
def outBelow (d : Dev nD) (L : grid0.Coords) (g : Buf (Elt F) (oLoc d)) (hi : ℕ) : sProp 𝕄 :=
  bigSep (Finset.univ.filter fun c : Fin 32 => c.val < hi) fun c => outChunk d L g c.val c.isLt

theorem sep_comm_eq (A B : sProp 𝕄) : (iprop(A ∗ B) : sProp 𝕄) = iprop(B ∗ A) := by
  refine BI.equiv_iff.mp ⟨(show iprop(A ∗ B) ⊢ iprop(B ∗ A) from ?_), (show iprop(B ∗ A) ⊢ iprop(A ∗ B) from ?_)⟩
  · iintro ⟨H1, H2⟩; isplitl [H2]; · iexact H2
    iexact H1
  · iintro ⟨H1, H2⟩; isplitl [H2]; · iexact H2
    iexact H1

theorem filter_from_succ (lo : ℕ) (h : lo < 32) :
    (Finset.univ.filter fun c : Fin 32 => lo ≤ c.val) = insert ⟨lo, h⟩ (Finset.univ.filter fun c : Fin 32 => lo + 1 ≤ c.val) := by
  ext c; simp only [Finset.mem_filter, Finset.mem_univ, true_and, Finset.mem_insert, Fin.ext_iff]; omega
theorem not_mem_from_succ (lo : ℕ) (h : lo < 32) : (⟨lo, h⟩ : Fin 32) ∉ Finset.univ.filter fun c : Fin 32 => lo + 1 ≤ c.val := by
  simp only [Finset.mem_filter, Finset.mem_univ, true_and]; omega
theorem filter_from_ge (lo : ℕ) (h : 32 ≤ lo) : (Finset.univ.filter fun c : Fin 32 => lo ≤ c.val) = ∅ := by
  ext c; have := c.isLt
  simp only [Finset.mem_filter, Finset.mem_univ, true_and, Finset.notMem_empty, iff_false]; omega
theorem filter_from_zero : (Finset.univ.filter fun c : Fin 32 => 0 ≤ c.val) = Finset.univ :=
  Finset.filter_true_of_mem fun c _ => Nat.zero_le _
theorem filter_below_succ (hi : ℕ) (h : hi < 32) :
    (Finset.univ.filter fun c : Fin 32 => c.val < hi + 1) = insert ⟨hi, h⟩ (Finset.univ.filter fun c : Fin 32 => c.val < hi) := by
  ext c; simp only [Finset.mem_filter, Finset.mem_univ, true_and, Finset.mem_insert, Fin.ext_iff]; omega
theorem not_mem_below (hi : ℕ) (h : hi < 32) : (⟨hi, h⟩ : Fin 32) ∉ Finset.univ.filter fun c : Fin 32 => c.val < hi := by
  simp only [Finset.mem_filter, Finset.mem_univ, true_and]; omega
theorem filter_below_zero : (Finset.univ.filter fun c : Fin 32 => c.val < 0) = ∅ := by
  ext c; simp only [Finset.mem_filter, Finset.mem_univ, true_and, Finset.notMem_empty, iff_false]; omega
theorem filter_below_all : (Finset.univ.filter fun c : Fin 32 => c.val < 32) = Finset.univ :=
  Finset.filter_true_of_mem fun c _ => c.isLt

section Peel
variable (d : Dev nD) (L : grid0.Coords) (fp : Buf (Elt F) (pLoc d)) (fx : Buf (Elt F) (xLoc d)) (fo : Buf (Elt F) (oLoc d))

theorem srcFrom_succ (lo : ℕ) (h : lo < 32) : srcFrom d L fp fx lo = iprop(srcChunk d L fp fx lo h ∗ srcFrom d L fp fx (lo + 1)) := by
  unfold srcFrom; rw [filter_from_succ lo h, SparseCore.bigSep_insert' (not_mem_from_succ lo h)]
theorem srcFrom_done (lo : ℕ) (h : 32 ≤ lo) : srcFrom d L fp fx lo = (iprop(emp) : sProp 𝕄) := by
  unfold srcFrom; rw [filter_from_ge lo h, bigSep_empty]; rfl
theorem outFrom_succ (lo : ℕ) (h : lo < 32) : outFrom d L fo lo = iprop(outChunk d L fo lo h ∗ outFrom d L fo (lo + 1)) := by
  unfold outFrom; rw [filter_from_succ lo h, SparseCore.bigSep_insert' (not_mem_from_succ lo h)]
theorem outBelow_succ (hi : ℕ) (h : hi < 32) : outBelow d L fo (hi + 1) = iprop(outBelow d L fo hi ∗ outChunk d L fo hi h) := by
  unfold outBelow; rw [filter_below_succ hi h, SparseCore.bigSep_insert' (not_mem_below hi h)]
  exact sep_comm_eq _ _
theorem outBelow_zero : outBelow d L fo 0 = (iprop(emp) : sProp 𝕄) := by
  unfold outBelow; rw [filter_below_zero, bigSep_empty]; rfl
end Peel

abbrev pRectW (L : grid0.Coords) (c : ℕ) (hc : c < 32) : Rect S4096x1024 :=
  Rect.unit (s := S4096x1024) ![r0 L + 4 * c, 0] S4x1024.size (PW_inb L c hc)
abbrev xRectW (L : grid0.Coords) (c b : ℕ) (hc : c < 32) (hb : b < 4) : Rect S4x4096x1024 :=
  Rect.unit (s := S4x4096x1024) ![b, r0 L + 4 * c, 0] S1x4x1024.size (XW_inb L c b hc hb)

theorem PW_set (L : grid0.Coords) (c : ℕ) (hc : c < 32) : (PW L c hc).view.set = (pRectW L c hc).set := by
  show ((View.whole (main_v0_scv : Ref sig .scVector)).slice (pRectW L c hc)).set = _
  rw [View.set_slice_whole]
theorem XW_set (L : grid0.Coords) (c b : ℕ) (hc : c < 32) (hb : b < 4) : (XW L c b hc hb).view.set = (xRectW L c b hc hb).set := by
  show (((View.whole (main_arg0_scv : Ref sig .scVector)).slice (xRectW L c b hc hb)).reshape S4x1024 squeezes_S1x4x1024_S4x1024.numel_eq).set = _
  rw [View.set_reshape, View.set_slice_whole]
theorem OW_set (L : grid0.Coords) (c b : ℕ) (hc : c < 32) (hb : b < 4) : (OW L c b hc hb).view.set = (xRectW L c b hc hb).set := by
  show (((View.whole (main_v1_scv : Ref sig .scVector)).slice (xRectW L c b hc hb)).reshape S4x1024 squeezes_S1x4x1024_S4x1024.numel_eq).set = _
  rw [View.set_reshape, View.set_slice_whole]

theorem pRectW_disjoint (L : grid0.Coords) (c c' : Fin 32) (h : c ≠ c') : Disjoint (pRectW L c.val c.isLt).set (pRectW L c'.val c'.isLt).set := by
  have hv : c.val ≠ c'.val := fun e => h (Fin.ext e)
  exact Rect.unit_disjoint 0 (by simp; omega)
theorem xRectW_disjoint (L : grid0.Coords) {c c' : Fin 32} {b b' : Fin 4} (h : ¬ (c = c' ∧ b = b')) :
    Disjoint (xRectW L c.val b.val c.isLt b.isLt).set (xRectW L c'.val b'.val c'.isLt b'.isLt).set := by
  by_cases hb : b = b'
  · have hv : c.val ≠ c'.val := fun e => h ⟨Fin.ext e, hb⟩
    exact Rect.unit_disjoint 1 (by simp; omega)
  · have hv : b.val ≠ b'.val := fun e => hb (Fin.ext e)
    exact Rect.unit_disjoint 0 (by simp; omega)

theorem tileP_windows (L : grid0.Coords) :
    (tileP (L 0).val (L 1).val (L 0).isLt (L 1).isLt).set = (Finset.univ : Finset (Fin 32)).biUnion fun c => (pRectW L c.val c.isLt).set := by
  ext x
  have hx1 : (x 1).val < 1024 := (x 1).isLt
  simp only [Finset.mem_biUnion, Finset.mem_univ, true_and, tileP, Rect.mem_set_unit]
  constructor
  · intro h
    have h0 := h 0
    simp only [Matrix.cons_val_zero] at h0
    refine ⟨⟨((x 0).val - r0 L) / 4, by rw [r0_def]; omega⟩, fun a => ?_⟩
    fin_cases a
    · simp only [Fin.zero_eta, Matrix.cons_val_zero]; rw [r0_def]; simp; omega
    · simp; omega
  · rintro ⟨c, h⟩ a
    have h0 := h 0
    have hc := c.isLt
    simp only [Matrix.cons_val_zero] at h0
    rw [r0_def] at h0
    fin_cases a
    · simp at h0 ⊢; omega
    · simp; omega

theorem tileX_windows (L : grid0.Coords) :
    (tileX (L 0).val (L 1).val (L 0).isLt (L 1).isLt).set
      = (Finset.univ : Finset (Fin 32)).biUnion fun c => (Finset.univ : Finset (Fin 4)).biUnion fun b => (xRectW L c.val b.val c.isLt b.isLt).set := by
  ext x
  have hx0 : (x 0).val < 4 := (x 0).isLt
  have hx2 : (x 2).val < 1024 := (x 2).isLt
  simp only [Finset.mem_biUnion, Finset.mem_univ, true_and, tileX, Rect.mem_set_unit]
  constructor
  · intro h
    have h1 := h 1
    simp only [Matrix.cons_val_one, Matrix.cons_val_zero] at h1
    refine ⟨⟨((x 1).val - r0 L) / 4, by rw [r0_def]; omega⟩, ⟨(x 0).val, hx0⟩, fun a => ?_⟩
    fin_cases a
    · simp
    · simp only [Fin.mk_one, Matrix.cons_val_one, Matrix.cons_val_zero]; rw [r0_def]; simp; omega
    · simp; omega
  · rintro ⟨c, b, h⟩ a
    have h0 := h 0
    have h1 := h 1
    have hc := c.isLt
    have hb := b.isLt
    simp only [Matrix.cons_val_one, Matrix.cons_val_zero] at h0 h1
    rw [r0_def] at h1
    fin_cases a
    · simp at h0 ⊢; omega
    · simp at h1 ⊢; omega
    · simp; omega

theorem vec2_congr {a b : ℕ} (h : a = b) : (![a, 0] : Fin 2 → ℕ) = ![b, 0] := by rw [h]
theorem vec3_congr (t : ℕ) {a b : ℕ} (h : a = b) : (![t, a, 0] : Fin 3 → ℕ) = ![t, b, 0] := by rw [h]
theorem trips_eq : k0_t1_loop.trips = 8 := rfl
theorem trip_lt (k : Fin k0_t1_loop.trips) : k.val < 8 := k.isLt

theorem sep_rot_eq (A B C : sProp 𝕄) : (iprop(A ∗ B ∗ C) : sProp 𝕄) = iprop((B ∗ A) ∗ C) := by
  refine BI.equiv_iff.mp ⟨(show iprop(A ∗ B ∗ C) ⊢ iprop((B ∗ A) ∗ C) from ?_), (show iprop((B ∗ A) ∗ C) ⊢ iprop(A ∗ B ∗ C) from ?_)⟩
  · iintro ⟨HA, HB, HC⟩
    isplitl [HA HB]
    · isplitl [HB]; · iexact HB
      iexact HA
    iexact HC
  · iintro ⟨⟨HB, HA⟩, HC⟩
    isplitl [HA]; · iexact HA
    isplitl [HB]; · iexact HB
    iexact HC

theorem pointsTo_grid32 {ℓ : Loc nD τ sig} (S : Finset (Idx ℓ)) (G : Fin 32 → Fin 4 → Finset (Idx ℓ))
    (hS : S = (Finset.univ : Finset (Fin 32)).biUnion fun c => (Finset.univ : Finset (Fin 4)).biUnion fun b => G c b)
    (hd : ∀ {c c' : Fin 32} {b b' : Fin 4}, ¬ (c = c' ∧ b = b') → Disjoint (G c b) (G c' b')) (q : PosShare TreeShare) (f : Buf (Elt F) ℓ) :
    (ℓ ↦[S]{q} f : sProp 𝕄) = bigSep Finset.univ fun c : Fin 32 => bigSep Finset.univ fun b : Fin 4 => ℓ ↦[G c b]{q} f := by
  subst hS
  rw [pointsTo_biUnion Finset.univ (ℓ := ℓ) (fun c : Fin 32 => (Finset.univ : Finset (Fin 4)).biUnion fun b => G c b)]
  · exact bigSep_congr fun c _ => pointsTo_biUnion Finset.univ (ℓ := ℓ) (G c) fun b _ b' _ h => hd fun e => h e.2
  · intro c _ c' _ h
    exact (Finset.disjoint_biUnion_left _ _ _).mpr fun b _ => (Finset.disjoint_biUnion_right _ _ _).mpr fun b' _ => hd fun e => h e.1

theorem pRows_windows (d : Dev nD) (L : grid0.Coords) (q : PosShare TreeShare) (f : Buf (Elt F) (pLoc d)) :
    (pLoc d ↦[pSet (L 0).val (L 1).val (L 0).isLt (L 1).isLt]{q} f : sProp 𝕄)
      = bigSep Finset.univ fun c : Fin 32 => (PW L c.val c.isLt).view.loc (thr d L) ↦[(PW L c.val c.isLt).view.set]{q} f := by
  have hs : pSet (L 0).val (L 1).val (L 0).isLt (L 1).isLt = (tileP (L 0).val (L 1).val (L 0).isLt (L 1).isLt).set := by
    unfold pSet View.setOn; exact Finset.map_refl
  rw [hs, tileP_windows, pointsTo_biUnion Finset.univ (ℓ := pLoc d) (fun c : Fin 32 => (pRectW L c.val c.isLt).set)
    fun c _ c' _ h => pRectW_disjoint L c c' h]
  exact bigSep_congr fun c _ => by rw [PW_set]

def xWins (d : Dev nD) (L : grid0.Coords) (q : PosShare TreeShare) (f : Buf (Elt F) (xLoc d)) (c : ℕ) (hc : c < 32) : sProp 𝕄 :=
  iprop(((XW L c 0 hc (by decide)).view.loc (thr d L) ↦[(XW L c 0 hc (by decide)).view.set]{q} f)
    ∗ ((XW L c 1 hc (by decide)).view.loc (thr d L) ↦[(XW L c 1 hc (by decide)).view.set]{q} f)
    ∗ ((XW L c 2 hc (by decide)).view.loc (thr d L) ↦[(XW L c 2 hc (by decide)).view.set]{q} f)
    ∗ ((XW L c 3 hc (by decide)).view.loc (thr d L) ↦[(XW L c 3 hc (by decide)).view.set]{q} f))

theorem XW_pts (d : Dev nD) (L : grid0.Coords) (q : PosShare TreeShare) (f : Buf (Elt F) (xLoc d)) (c b : ℕ) (hc : c < 32) (hb : b < 4) :
    ((XW L c b hc hb).view.loc (thr d L) ↦[(XW L c b hc hb).view.set]{q} f : sProp 𝕄) = (xLoc d ↦[(xRectW L c b hc hb).set]{q} f) := by
  rw [XW_set]

theorem xWins_rects (d : Dev nD) (L : grid0.Coords) (q : PosShare TreeShare) (f : Buf (Elt F) (xLoc d)) (c : ℕ) (hc : c < 32) :
    xWins d L q f c hc
      = iprop((xLoc d ↦[(xRectW L c 0 hc (by decide)).set]{q} f)
        ∗ (xLoc d ↦[(xRectW L c 1 hc (by decide)).set]{q} f)
        ∗ (xLoc d ↦[(xRectW L c 2 hc (by decide)).set]{q} f)
        ∗ (xLoc d ↦[(xRectW L c 3 hc (by decide)).set]{q} f)) :=
  sep_congr' (XW_pts d L q f c 0 hc (by decide)) (sep_congr' (XW_pts d L q f c 1 hc (by decide))
    (sep_congr' (XW_pts d L q f c 2 hc (by decide)) (XW_pts d L q f c 3 hc (by decide))))

theorem xSet_tile (L : grid0.Coords) : xSet (L 0).val (L 1).val (L 0).isLt (L 1).isLt = (tileX (L 0).val (L 1).val (L 0).isLt (L 1).isLt).set := by
  unfold xSet View.setOn; exact Finset.map_refl

theorem xRows_windows (d : Dev nD) (L : grid0.Coords) (q : PosShare TreeShare) (f : Buf (Elt F) (xLoc d)) :
    (xLoc d ↦[xSet (L 0).val (L 1).val (L 0).isLt (L 1).isLt]{q} f : sProp 𝕄)
      = bigSep Finset.univ fun c : Fin 32 => xWins d L q f c.val c.isLt :=
  (pointsTo_grid32 (ℓ := xLoc d) _ (fun (c : Fin 32) (b : Fin 4) => (xRectW L c.val b.val c.isLt b.isLt).set)
      ((xSet_tile L).trans (tileX_windows L)) (fun h => xRectW_disjoint L h) q f).trans
    (bigSep_congr fun c _ => (bigSep_fin4 _).trans (xWins_rects d L q f c.val c.isLt).symm)

def oWins (d : Dev nD) (L : grid0.Coords) (q : PosShare TreeShare) (f : Buf (Elt F) (oLoc d)) (c : ℕ) (hc : c < 32) : sProp 𝕄 :=
  iprop(((OW L c 0 hc (by decide)).view.loc (thr d L) ↦[(OW L c 0 hc (by decide)).view.set]{q} f)
    ∗ ((OW L c 1 hc (by decide)).view.loc (thr d L) ↦[(OW L c 1 hc (by decide)).view.set]{q} f)
    ∗ ((OW L c 2 hc (by decide)).view.loc (thr d L) ↦[(OW L c 2 hc (by decide)).view.set]{q} f)
    ∗ ((OW L c 3 hc (by decide)).view.loc (thr d L) ↦[(OW L c 3 hc (by decide)).view.set]{q} f))

theorem OW_pts (d : Dev nD) (L : grid0.Coords) (q : PosShare TreeShare) (f : Buf (Elt F) (oLoc d)) (c b : ℕ) (hc : c < 32) (hb : b < 4) :
    ((OW L c b hc hb).view.loc (thr d L) ↦[(OW L c b hc hb).view.set]{q} f : sProp 𝕄) = (oLoc d ↦[(xRectW L c b hc hb).set]{q} f) := by
  rw [OW_set]

theorem oWins_rects (d : Dev nD) (L : grid0.Coords) (q : PosShare TreeShare) (f : Buf (Elt F) (oLoc d)) (c : ℕ) (hc : c < 32) :
    oWins d L q f c hc
      = iprop((oLoc d ↦[(xRectW L c 0 hc (by decide)).set]{q} f)
        ∗ (oLoc d ↦[(xRectW L c 1 hc (by decide)).set]{q} f)
        ∗ (oLoc d ↦[(xRectW L c 2 hc (by decide)).set]{q} f)
        ∗ (oLoc d ↦[(xRectW L c 3 hc (by decide)).set]{q} f)) :=
  sep_congr' (OW_pts d L q f c 0 hc (by decide)) (sep_congr' (OW_pts d L q f c 1 hc (by decide))
    (sep_congr' (OW_pts d L q f c 2 hc (by decide)) (OW_pts d L q f c 3 hc (by decide))))

theorem oSet_tile (L : grid0.Coords) : oSet (L 0).val (L 1).val (L 0).isLt (L 1).isLt = (tileX (L 0).val (L 1).val (L 0).isLt (L 1).isLt).set := by
  unfold oSet View.setOn; exact Finset.map_refl

theorem oRows_windows (d : Dev nD) (L : grid0.Coords) (q : PosShare TreeShare) (f : Buf (Elt F) (oLoc d)) :
    (oLoc d ↦[oSet (L 0).val (L 1).val (L 0).isLt (L 1).isLt]{q} f : sProp 𝕄)
      = bigSep Finset.univ fun c : Fin 32 => oWins d L q f c.val c.isLt :=
  (pointsTo_grid32 (ℓ := oLoc d) _ (fun (c : Fin 32) (b : Fin 4) => (xRectW L c.val b.val c.isLt b.isLt).set)
      ((oSet_tile L).trans (tileX_windows L)) (fun h => xRectW_disjoint L h) q f).trans
    (bigSep_congr fun c _ => (bigSep_fin4 _).trans (oWins_rects d L q f c.val c.isLt).symm)

section Rows
variable (d : Dev nD) (L : grid0.Coords)

theorem srcChunk_eq (fp : Buf (Elt F) (pLoc d)) (fx : Buf (Elt F) (xLoc d)) (c : ℕ) (hc : c < 32) :
    srcChunk d L fp fx c hc = iprop(((PW L c hc).view.loc (thr d L) ↦[(PW L c hc).view.set]{rsh} fp) ∗ xWins d L rsh fx c hc) := rfl
theorem outChunk_eq (fo : Buf (Elt F) (oLoc d)) (c : ℕ) (hc : c < 32) : outChunk d L fo c hc = oWins d L fullShare fo c hc := rfl

theorem srcFrom_zero (fp : Buf (Elt F) (pLoc d)) (fx : Buf (Elt F) (xLoc d)) :
    srcFrom d L fp fx 0
      = iprop((pLoc d ↦[pSet (L 0).val (L 1).val (L 0).isLt (L 1).isLt]{rsh} fp) ∗ (xLoc d ↦[xSet (L 0).val (L 1).val (L 0).isLt (L 1).isLt]{rsh} fx)) := by
  unfold srcFrom
  rw [filter_from_zero, pRows_windows d L rsh fp, xRows_windows d L rsh fx, ← bigSep_sep']
  exact bigSep_congr fun c _ => srcChunk_eq d L fp fx c.val c.isLt

theorem outFrom_zero (fo : Buf (Elt F) (oLoc d)) :
    outFrom d L fo 0 = (oLoc d ↦[oSet (L 0).val (L 1).val (L 0).isLt (L 1).isLt]{fullShare} fo : sProp 𝕄) := by
  unfold outFrom
  rw [filter_from_zero, oRows_windows d L fullShare fo]
  exact bigSep_congr fun c _ => outChunk_eq d L fo c.val c.isLt

theorem outBelow_all (g : Buf (Elt F) (oLoc d)) :
    outBelow d L g 32 = (oLoc d ↦[oSet (L 0).val (L 1).val (L 0).isLt (L 1).isLt]{fullShare} g : sProp 𝕄) := by
  unfold outBelow
  rw [filter_below_all, oRows_windows d L fullShare g]
  exact bigSep_congr fun c _ => outChunk_eq d L g c.val c.isLt

variable [FloatOps F] (m : (ℓ : Loc nD τ sig) → Buf (Elt F) ℓ)

theorem goOf_chunks :
    goOf m d (L 0).val (L 1).val (L 0).isLt (L 1).isLt = iprop(srcFrom d L (mp m d) (m (xLoc d)) 0 ∗ outFrom d L (m (oLoc d)) 0) := by
  rw [srcFrom_zero, outFrom_zero]
  exact sep_rot_eq _ _ _

theorem tdOf_chunks :
    outBelow d L (mres m d) 32 = tdOf m d (L 0).val (L 1).val (L 0).isLt (L 1).isLt :=
  outBelow_all d L (mres m d)
end Rows

end Cert.Proof.KI

end
-- ==== Proof.KInnerTrip.lean ====
import proofs.«210091_g81140522156176_cont_9to1_m_468_11_alg».proof.Proof.KSlots
import Idealize.ShloMosaic.Lib.Writes
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev sS00 : Memref sig .scVector .vmem S4x1024 .f32 :=
  (sB.slice (Rect.unit (s := S2x4x4x1024) ![0, 0, 0, 0] S1x1x4x1024.size inb_S2x4x4x1024_S1x1x4x1024_0_0_0_0) (fun _ => rfl)).squeeze S4x1024 squeezes_S1x1x4x1024_S4x1024
abbrev sS01 : Memref sig .scVector .vmem S4x1024 .f32 :=
  (sB.slice (Rect.unit (s := S2x4x4x1024) ![0, 1, 0, 0] S1x1x4x1024.size inb_S2x4x4x1024_S1x1x4x1024_0_1_0_0) (fun _ => rfl)).squeeze S4x1024 squeezes_S1x1x4x1024_S4x1024
abbrev sS02 : Memref sig .scVector .vmem S4x1024 .f32 :=
  (sB.slice (Rect.unit (s := S2x4x4x1024) ![0, 2, 0, 0] S1x1x4x1024.size inb_S2x4x4x1024_S1x1x4x1024_0_2_0_0) (fun _ => rfl)).squeeze S4x1024 squeezes_S1x1x4x1024_S4x1024
abbrev sS03 : Memref sig .scVector .vmem S4x1024 .f32 :=
  (sB.slice (Rect.unit (s := S2x4x4x1024) ![0, 3, 0, 0] S1x1x4x1024.size inb_S2x4x4x1024_S1x1x4x1024_0_3_0_0) (fun _ => rfl)).squeeze S4x1024 squeezes_S1x1x4x1024_S4x1024
abbrev sS10 : Memref sig .scVector .vmem S4x1024 .f32 :=
  (sB.slice (Rect.unit (s := S2x4x4x1024) ![1, 0, 0, 0] S1x1x4x1024.size inb_S2x4x4x1024_S1x1x4x1024_1_0_0_0) (fun _ => rfl)).squeeze S4x1024 squeezes_S1x1x4x1024_S4x1024
abbrev sS11 : Memref sig .scVector .vmem S4x1024 .f32 :=
  (sB.slice (Rect.unit (s := S2x4x4x1024) ![1, 1, 0, 0] S1x1x4x1024.size inb_S2x4x4x1024_S1x1x4x1024_1_1_0_0) (fun _ => rfl)).squeeze S4x1024 squeezes_S1x1x4x1024_S4x1024
abbrev sS12 : Memref sig .scVector .vmem S4x1024 .f32 :=
  (sB.slice (Rect.unit (s := S2x4x4x1024) ![1, 2, 0, 0] S1x1x4x1024.size inb_S2x4x4x1024_S1x1x4x1024_1_2_0_0) (fun _ => rfl)).squeeze S4x1024 squeezes_S1x1x4x1024_S4x1024
abbrev sS13 : Memref sig .scVector .vmem S4x1024 .f32 :=
  (sB.slice (Rect.unit (s := S2x4x4x1024) ![1, 3, 0, 0] S1x1x4x1024.size inb_S2x4x4x1024_S1x1x4x1024_1_3_0_0) (fun _ => rfl)).squeeze S4x1024 squeezes_S1x1x4x1024_S4x1024

def idxList : List (Fin 4 × Fin 64) :=
  [
    (3, 63), (3, 62), (3, 61), (3, 60), (3, 59), (3, 58), (3, 57), (3, 56), (3, 55), (3, 54), (3, 53), (3, 52), (3, 51), (3, 50), (3, 49), (3, 48),
    (3, 47), (3, 46), (3, 45), (3, 44), (3, 43), (3, 42), (3, 41), (3, 40), (3, 39), (3, 38), (3, 37), (3, 36), (3, 35), (3, 34), (3, 33), (3, 32),
    (2, 63), (2, 62), (2, 61), (2, 60), (2, 59), (2, 58), (2, 57), (2, 56), (2, 55), (2, 54), (2, 53), (2, 52), (2, 51), (2, 50), (2, 49), (2, 48),
    (2, 47), (2, 46), (2, 45), (2, 44), (2, 43), (2, 42), (2, 41), (2, 40), (2, 39), (2, 38), (2, 37), (2, 36), (2, 35), (2, 34), (2, 33), (2, 32),
    (1, 63), (1, 62), (1, 61), (1, 60), (1, 59), (1, 58), (1, 57), (1, 56), (1, 55), (1, 54), (1, 53), (1, 52), (1, 51), (1, 50), (1, 49), (1, 48),
    (1, 47), (1, 46), (1, 45), (1, 44), (1, 43), (1, 42), (1, 41), (1, 40), (1, 39), (1, 38), (1, 37), (1, 36), (1, 35), (1, 34), (1, 33), (1, 32),
    (0, 63), (0, 62), (0, 61), (0, 60), (0, 59), (0, 58), (0, 57), (0, 56), (0, 55), (0, 54), (0, 53), (0, 52), (0, 51), (0, 50), (0, 49), (0, 48),
    (0, 47), (0, 46), (0, 45), (0, 44), (0, 43), (0, 42), (0, 41), (0, 40), (0, 39), (0, 38), (0, 37), (0, 36), (0, 35), (0, 34), (0, 33), (0, 32),
    (3, 31), (3, 30), (3, 29), (3, 28), (3, 27), (3, 26), (3, 25), (3, 24), (3, 23), (3, 22), (3, 21), (3, 20), (3, 19), (3, 18), (3, 17), (3, 16),
    (3, 15), (3, 14), (3, 13), (3, 12), (3, 11), (3, 10), (3, 9), (3, 8), (3, 7), (3, 6), (3, 5), (3, 4), (3, 3), (3, 2), (3, 1), (3, 0),
    (2, 31), (2, 30), (2, 29), (2, 28), (2, 27), (2, 26), (2, 25), (2, 24), (2, 23), (2, 22), (2, 21), (2, 20), (2, 19), (2, 18), (2, 17), (2, 16),
    (2, 15), (2, 14), (2, 13), (2, 12), (2, 11), (2, 10), (2, 9), (2, 8), (2, 7), (2, 6), (2, 5), (2, 4), (2, 3), (2, 2), (2, 1), (2, 0),
    (1, 31), (1, 30), (1, 29), (1, 28), (1, 27), (1, 26), (1, 25), (1, 24), (1, 23), (1, 22), (1, 21), (1, 20), (1, 19), (1, 18), (1, 17), (1, 16),
    (1, 15), (1, 14), (1, 13), (1, 12), (1, 11), (1, 10), (1, 9), (1, 8), (1, 7), (1, 6), (1, 5), (1, 4), (1, 3), (1, 2), (1, 1), (1, 0),
    (0, 31), (0, 30), (0, 29), (0, 28), (0, 27), (0, 26), (0, 25), (0, 24), (0, 23), (0, 22), (0, 21), (0, 20), (0, 19), (0, 18), (0, 17), (0, 16),
    (0, 15), (0, 14), (0, 13), (0, 12), (0, 11), (0, 10), (0, 9), (0, 8), (0, 7), (0, 6), (0, 5), (0, 4), (0, 3), (0, 2), (0, 1), (0, 0) ]

theorem mem_idxList : ∀ bq : Fin 4 × Fin 64, bq ∈ idxList := by decide

section ReadV
variable [FloatOps F]

def readV {κ : Kind} {sp : Space} {s : Shape} (v : View sig κ sp s .f32) (f : v.ty.Contents (Elt F)) (off sz : Fin s.rank → Nat) :
    (⟨s.rank, sz⟩ : Shape).Idx → Elt F .f32 :=
  fun x => if h : ∀ a, off a + sz a ≤ s.size a then v.readAt (Elt F) (Rect.unit off sz h).toLoadRect f x else (FloatOps.ofBits .f32 0#32 : F .f32)

theorem readAt_unit_eq {κ : Kind} {sp : Space} {s : Shape} (v : View sig κ sp s .f32) (f : v.ty.Contents (Elt F)) (off sz : Fin s.rank → Nat)
    (inb : ∀ a, off a + sz a ≤ s.size a) :
    v.readAt (Elt F) (Rect.unit off sz inb).toLoadRect f = readV v f off sz := by
  funext x
  unfold readV
  rw [dif_pos inb]

/-- A load through a unit-stride rectangle, at the closed form of the rectangle's offsets. -/
theorem readAt_unit_closed {κ : Kind} {sp : Space} {s : Shape} (v : View sig κ sp s .f32) (f : v.ty.Contents (Elt F)) (off sz : Fin s.rank → Nat)
    (inb : ∀ a, off a + sz a ≤ s.size a) [c : ClosedOff off] :
    v.readAt (Elt F) (Rect.unit off sz inb).toLoadRect f = readV v f (ClosedOff.form off) sz := by
  obtain ⟨form, rfl⟩ := c
  exact readAt_unit_eq v f _ sz inb

/-- A block rewritten whole, over any earlier contents, with what a window of another array holds. -/
abbrev lnd {κ κ' : Kind} {sp sp' : Space} (dst : Memref sig κ sp S4x1024 .f32) (src : Memref sig κ' sp' S4x1024 .f32)
    (fs : src.view.ty.Contents (Elt F)) : dst.view.ty.Contents (Elt F) :=
  dst.view.writes (Elt F) dst.view.junk [⟨Rect.whole S4x1024, ReadAs.same.apply (src.view.read (Elt F) fs)⟩]

end ReadV

section Pure

open ValueIdx

variable [FloatOps F]

theorem sInb (m : Fin 2) (b : Fin 4) (tv : Nat) (ht : tv < 4) (q : Fin 64) :
    ∀ a, (![m.val, b.val, tv, 16 * q.val] : Fin 4 → Nat) a + S1x1x1x16.size a ≤ S2x4x4x1024.size a := by
  intro a; fin_cases a <;> simp <;> omega
theorem xInbQ (k b : Fin 4) (tv : Nat) (ht : tv < 4) (q : Fin 64) :
    ∀ a, (![k.val, b.val, tv, 16 * q.val] : Fin 4 → Nat) a + S1x1x1x16.size a ≤ S4x4x4x1024.size a := by
  intro a; fin_cases a <;> simp <;> omega
theorem pInbQ (k : Fin 4) (tv : Nat) (ht : tv < 4) (q : Fin 64) :
    ∀ a, (![k.val, tv, 16 * q.val] : Fin 3 → Nat) a + S1x1x16.size a ≤ S4x4x1024.size a := by
  intro a; fin_cases a <;> simp <;> omega

variable (k : Fin 4) (m : Fin 2) (tv : Nat) (ht : tv < 4)
  (X0 : S4x4x1024.Idx → F .f32) (Xs : Fin 4 → S4x4x4x1024.Idx → F .f32)

def rowVal (b j : Fin 4) (l : Fin 1024) : F .f32 := FloatOps.addf (Xs b (ix4 k b j l)) (X0 (ix3 k j l))

def rowG (y : S2x4x4x1024.Idx) : F .f32 :=
  rowVal k X0 Xs ⟨(y 1).val, (y 1).isLt⟩ ⟨(y 2).val, (y 2).isLt⟩ ⟨(y 3).val, (y 3).isLt⟩

def mkPiece (bq : Fin 4 × Fin 64) : View.Piece (Elt F) S2x4x4x1024 .f32 :=
  ⟨Rect.unit (s := S2x4x4x1024) ![m.val, bq.1.val, tv, 16 * bq.2.val] S1x1x1x16.size (sInb m bq.1 tv ht bq.2),
    shapeCast S1x1x1x16
      (addf
        (shapeCast S16 (readV (xB : Memref sig .scVector .vmem S4x4x4x1024 .f32).view (Xs bq.1) ![k.val, bq.1.val, tv, 16 * bq.2.val] S1x1x1x16.size)
          shapeCasts_S1x1x1x16_S16)
        (shapeCast S16 (readV (pB : Memref sig .scVector .vmem S4x4x1024 .f32).view X0 ![k.val, tv, 16 * bq.2.val] S1x1x16.size)
          shapeCasts_S1x1x16_S16))
      shapeCasts_S16_S1x1x1x16⟩

end Pure

section Casts
open ValueIdx
variable {α : Type}

theorem cast_16_to_4 (v : (⟨1, ![16]⟩ : Shape).Idx → α) (h : (⟨1, ![16]⟩ : Shape).ShapeCasts ⟨4, ![1, 1, 1, 16]⟩)
    (x : (⟨4, ![1, 1, 1, 16]⟩ : Shape).Idx) :
    shapeCast ⟨4, ![1, 1, 1, 16]⟩ v h x = v (ix1 (⟨(x 3).val, (x 3).isLt⟩ : Fin 16)) := by
  refine shapeCast_apply v h x _ ?_
  rw [Shape.rowMajor_val_one, Shape.rowMajor_val_four]
  have h0 : (x 0).val < 1 := (x 0).isLt
  have h1 : (x 1).val < 1 := (x 1).isLt
  have h2 : (x 2).val < 1 := (x 2).isLt
  show (x 3).val = (((x 0).val * 1 + (x 1).val) * 1 + (x 2).val) * 16 + (x 3).val
  omega

theorem cast_4_to_16 (v : (⟨4, ![1, 1, 1, 16]⟩ : Shape).Idx → α) (h : (⟨4, ![1, 1, 1, 16]⟩ : Shape).ShapeCasts ⟨1, ![16]⟩)
    (r : Fin 16) : shapeCast ⟨1, ![16]⟩ v h (ix1 r) = v (ix4 (0 : Fin 1) (0 : Fin 1) (0 : Fin 1) r) := by
  refine shapeCast_apply v h (ix1 r) _ ?_
  rw [Shape.rowMajor_val_one, Shape.rowMajor_val_four]
  show (((0 : Nat) * 1 + 0) * 1 + 0) * 16 + r.val = r.val
  omega

theorem cast_3_to_16 (v : (⟨3, ![1, 1, 16]⟩ : Shape).Idx → α) (h : (⟨3, ![1, 1, 16]⟩ : Shape).ShapeCasts ⟨1, ![16]⟩)
    (r : Fin 16) : shapeCast ⟨1, ![16]⟩ v h (ix1 r) = v (ix3 (0 : Fin 1) (0 : Fin 1) r) := by
  refine shapeCast_apply v h (ix1 r) _ ?_
  rw [Shape.rowMajor_val_one, Shape.rowMajor_val_three]
  show ((0 : Nat) * 1 + 0) * 16 + r.val = r.val
  omega

theorem eq_lane (x : (⟨4, ![1, 1, 1, 16]⟩ : Shape).Idx) : x = ix4 (0 : Fin 1) (0 : Fin 1) (0 : Fin 1) (⟨(x 3).val, (x 3).isLt⟩ : Fin 16) := by
  funext a
  refine Fin.ext ?_
  match a with
  | ⟨0, _⟩ => have h : (x 0).val < 1 := (x 0).isLt; show (x 0).val = 0; omega
  | ⟨1, _⟩ => have h : (x 1).val < 1 := (x 1).isLt; show (x 1).val = 0; omega
  | ⟨2, _⟩ => have h : (x 2).val < 1 := (x 2).isLt; show (x 2).val = 0; omega
  | ⟨3, _⟩ => rfl

end Casts

section Agree
open ValueIdx
variable [FloatOps F] (k : Fin 4) (m : Fin 2) (tv : Nat) (ht : tv < 4)
  (X0 : S4x4x1024.Idx → F .f32) (Xs : Fin 4 → S4x4x4x1024.Idx → F .f32)

theorem mkPiece_lane (b : Fin 4) (q : Fin 64) (r : Fin 16) :
    (mkPiece k m tv ht X0 Xs (b, q)).2 (ix4 (0 : Fin 1) (0 : Fin 1) (0 : Fin 1) r)
      = rowVal k X0 Xs b ⟨tv, ht⟩ ⟨16 * q.val + r.val, by have := q.isLt; have := r.isLt; omega⟩ := by
  unfold mkPiece
  dsimp only
  refine (cast_16_to_4 _ _ _).trans ?_
  refine congrArg₂ FloatOps.addf ((cast_4_to_16 _ _ r).trans ?_) ((cast_3_to_16 _ _ r).trans ?_)
  · unfold readV
    rw [dif_pos (xInbQ k b tv ht q)]
    show Xs b _ = Xs b _
    refine congrArg (Xs b) (funext fun a => Fin.ext ?_)
    match a with
    | ⟨0, _⟩ => show k.val + 1 * 0 = k.val; omega
    | ⟨1, _⟩ => show b.val + 1 * 0 = b.val; omega
    | ⟨2, _⟩ => show tv + 1 * 0 = tv; omega
    | ⟨3, _⟩ => show 16 * q.val + 1 * r.val = 16 * q.val + r.val; omega
  · unfold readV
    rw [dif_pos (pInbQ k tv ht q)]
    show X0 _ = X0 _
    refine congrArg X0 (funext fun a => Fin.ext ?_)
    match a with
    | ⟨0, _⟩ => show k.val + 1 * 0 = k.val; omega
    | ⟨1, _⟩ => show tv + 1 * 0 = tv; omega
    | ⟨2, _⟩ => show 16 * q.val + 1 * r.val = 16 * q.val + r.val; omega

theorem mkPiece_emb (b : Fin 4) (q : Fin 64) (r : Fin 16) :
    (mkPiece k m tv ht X0 Xs (b, q)).1.emb (ix4 (0 : Fin 1) (0 : Fin 1) (0 : Fin 1) r)
      = ix4 m b (⟨tv, ht⟩ : Fin 4) (⟨16 * q.val + r.val, by have := q.isLt; have := r.isLt; omega⟩ : Fin 1024) := by
  funext a
  refine Fin.ext ?_
  match a with
  | ⟨0, _⟩ => show m.val + 1 * 0 = m.val; omega
  | ⟨1, _⟩ => show b.val + 1 * 0 = b.val; omega
  | ⟨2, _⟩ => show tv + 1 * 0 = tv; omega
  | ⟨3, _⟩ => show 16 * q.val + 1 * r.val = 16 * q.val + r.val; omega

/-- Each store's payload is the row's sum on the store's own sixteen lanes. -/
theorem mkPiece_agrees (bq : Fin 4 × Fin 64) (x : (⟨4, ![1, 1, 1, 16]⟩ : Shape).Idx) :
    (mkPiece k m tv ht X0 Xs bq).2 x = rowG k X0 Xs ((mkPiece k m tv ht X0 Xs bq).1.emb x) := by
  obtain ⟨b, q⟩ := bq
  rw [eq_lane x, mkPiece_lane, mkPiece_emb]
  rfl

end Agree

section Trip
open ValueIdx
variable [FloatOps F] (k : Fin 4) (m : Fin 2) (tv : Nat) (ht : tv < 4)
  (X0 : S4x4x1024.Idx → F .f32) (Xs : Fin 4 → S4x4x4x1024.Idx → F .f32)

theorem mem_mkPiece (b b' j : Fin 4) (l : Fin 1024) (q' : Fin 64) :
    ix4 m b j l ∈ (mkPiece k m tv ht X0 Xs (b', q')).1.set
      ↔ b = b' ∧ j.val = tv ∧ 16 * q'.val ≤ l.val ∧ l.val < 16 * q'.val + 16 := by
  unfold mkPiece
  dsimp only
  rw [Rect.mem_set_unit]
  constructor
  · intro h
    have h1 := h 1; have h2 := h 2; have h3 := h 3
    refine ⟨Fin.ext ?_, ?_, ?_, ?_⟩
    · have e : b'.val ≤ b.val ∧ b.val < b'.val + 1 := h1
      omega
    · have e : tv ≤ j.val ∧ j.val < tv + 1 := h2
      omega
    · have e : 16 * q'.val ≤ l.val ∧ l.val < 16 * q'.val + 16 := h3
      exact e.1
    · have e : 16 * q'.val ≤ l.val ∧ l.val < 16 * q'.val + 16 := h3
      exact e.2
  · rintro ⟨rfl, hj, hl1, hl2⟩ a
    match a with
    | ⟨0, _⟩ => show m.val ≤ m.val ∧ m.val < m.val + 1; omega
    | ⟨1, _⟩ => show b.val ≤ b.val ∧ b.val < b.val + 1; omega
    | ⟨2, _⟩ => show tv ≤ j.val ∧ j.val < tv + 1; omega
    | ⟨3, _⟩ => show 16 * q'.val ≤ l.val ∧ l.val < 16 * q'.val + 16; exact ⟨hl1, hl2⟩

/-- Over contents whose rows below the trip's hold the sums, the trip's 256 stores leave the rows up to its own holding them. -/
theorem trip_value (f' : S2x4x4x1024.Idx → F .f32)
    (hIH : ∀ (b j : Fin 4) (l : Fin 1024), j.val < tv → f' (ix4 m b j l) = rowVal k X0 Xs b j l)
    (b j : Fin 4) (l : Fin 1024) (hj : j.val < tv + 1) :
    (sB : Memref sig .scVector .vmem S2x4x4x1024 .f32).view.writes (Elt F) f' (idxList.map (mkPiece k m tv ht X0 Xs)) (ix4 m b j l)
      = rowVal k X0 Xs b j l := by
  by_cases h : j.val = tv
  · have hl := l.isLt
    have hcov := View.read_writes_apply_of_pieces (sB : Memref sig .scVector .vmem S2x4x4x1024 .f32).view f' (rowG k X0 Xs)
      (idxList.map (mkPiece k m tv ht X0 Xs))
      (fun p hp x => by
        obtain ⟨bq, -, rfl⟩ := List.mem_map.1 hp
        exact mkPiece_agrees k m tv ht X0 Xs bq x)
      (ix4 m b j l)
      ⟨mkPiece k m tv ht X0 Xs (b, (⟨l.val / 16, by omega⟩ : Fin 64)),
        List.mem_map.2 ⟨_, mem_idxList _, rfl⟩,
        (mem_mkPiece k m tv ht X0 Xs b b j l _).2 ⟨rfl, h, by show 16 * (l.val / 16) ≤ l.val; omega, by show l.val < 16 * (l.val / 16) + 16; omega⟩⟩
    generalize (sB : Memref sig .scVector .vmem S2x4x4x1024 .f32).view.writes (Elt F) f' (idxList.map (mkPiece k m tv ht X0 Xs)) = g at hcov ⊢
    exact hcov
  · have hun := View.read_writes_apply_of_forall_not_mem (sB : Memref sig .scVector .vmem S2x4x4x1024 .f32).view f' (ix4 m b j l)
      (idxList.map (mkPiece k m tv ht X0 Xs))
      (fun p hp hm => by
        obtain ⟨⟨b', q'⟩, -, rfl⟩ := List.mem_map.1 hp
        exact h ((mem_mkPiece k m tv ht X0 Xs b b' j l q').1 hm).2.1)
    generalize (sB : Memref sig .scVector .vmem S2x4x4x1024 .f32).view.writes (Elt F) f' (idxList.map (mkPiece k m tv ht X0 Xs)) = g at hun ⊢
    exact hun.trans (hIH b j l (by omega))

end Trip

def selX {α : Type} (X10 X11 X12 X13 : α) (b : Fin 4) : α :=
  if b.val = 0 then X10 else if b.val = 1 then X11 else if b.val = 2 then X12 else X13

section SlotRead
open ValueIdx
variable [FloatOps F]

theorem xslot_read (k b : Fin 4) (inb : ∀ a, (![k.val, b.val, 0, 0] : Fin 4 → Nat) a + S1x1x4x1024.size a ≤ S4x4x4x1024.size a)
    (X : S4x4x4x1024.Idx → F .f32) (j : Fin 4) (l : Fin 1024) :
    (((xB : Memref sig .scVector .vmem S4x4x4x1024 .f32).slice (Rect.unit (s := S4x4x4x1024) ![k.val, b.val, 0, 0] S1x1x4x1024.size inb) (fun _ => rfl)).squeeze S4x1024
        squeezes_S1x1x4x1024_S4x1024).view.read (Elt F) X (ix2 j l)
      = X (ix4 k b j l) := by
  rw [Memref.read_squeeze_slice (Val := Elt F) (xB : Memref sig .scVector .vmem S4x4x4x1024 .f32) _ (fun _ => rfl) squeezes_S1x1x4x1024_S4x1024
    squeezes_S1x1x4x1024_S4x1024.numel_eq X]
  refine (shapeCast_apply _ _ (ix2 j l) (ix4 (0 : Fin 1) (0 : Fin 1) j l) ?_).trans ?_
  · rw [Shape.rowMajor_val_four, Shape.rowMajor_val_two]
    show (((0 : Nat) * 1 + 0) * 4 + j.val) * 1024 + l.val = j.val * 1024 + l.val
    omega
  · show X _ = X _
    refine congrArg X (funext fun a => Fin.ext ?_)
    match a with
    | ⟨0, _⟩ => show k.val + 1 * 0 = k.val; omega
    | ⟨1, _⟩ => show b.val + 1 * 0 = b.val; omega
    | ⟨2, _⟩ => show 0 + 1 * j.val = j.val; omega
    | ⟨3, _⟩ => show 0 + 1 * l.val = l.val; omega

theorem pslot_read (k : Fin 4) (inb : ∀ a, (![k.val, 0, 0] : Fin 3 → Nat) a + S1x4x1024.size a ≤ S4x4x1024.size a)
    (X : S4x4x1024.Idx → F .f32) (j : Fin 4) (l : Fin 1024) :
    (((pB : Memref sig .scVector .vmem S4x4x1024 .f32).slice (Rect.unit (s := S4x4x1024) ![k.val, 0, 0] S1x4x1024.size inb) (fun _ => rfl)).squeeze S4x1024
        squeezes_S1x4x1024_S4x1024).view.read (Elt F) X (ix2 j l)
      = X (ix3 k j l) := by
  rw [Memref.read_squeeze_slice (Val := Elt F) (pB : Memref sig .scVector .vmem S4x4x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show k.val + 1 * 0 = k.val; omega
    | ⟨1, _⟩ => show 0 + 1 * j.val = j.val; omega
    | ⟨2, _⟩ => show 0 + 1 * l.val = l.val; omega

end SlotRead

theorem landed_apply {κ : Kind} {sp : Space} {s : Shape} {e : EltTy} {Val : EltTy → Type} (v : View sig κ sp s e) (g : v.ty.Contents Val)
    (w : s.Idx → Val e) (y : s.Idx) :
    v.read Val (v.writes Val g [⟨Rect.whole s, ReadAs.same.apply w⟩]) y = w y := by
  have h := View.read_writes_cons_emb v g (Rect.whole s) (ReadAs.same.apply w) [] y
  rwa [Rect.emb_whole_apply] at h

end Cert.Proof.KI

end
-- ==== Proof.KSvb.lean ====
import proofs.«210091_g81140522156176_cont_9to1_m_468_11_alg».proof.Proof.KInnerTrip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem svbInb (mb : Fin 2 × Fin 4) : ∀ a, (![mb.1.val, mb.2.val, 0, 0] : Fin 4 → Nat) a + S1x1x4x1024.size a ≤ S2x4x4x1024.size a := by
  intro a; fin_cases a <;> simp <;> omega
abbrev sRect (mb : Fin 2 × Fin 4) : Rect S2x4x4x1024 :=
  Rect.unit (s := S2x4x4x1024) ![mb.1.val, mb.2.val, 0, 0] S1x1x4x1024.size (svbInb mb)

theorem mem_sRect (x : S2x4x4x1024.Idx) (mb : Fin 2 × Fin 4) : x ∈ (sRect mb).set ↔ (x 0).val = mb.1.val ∧ (x 1).val = mb.2.val := by
  have h2 : (x 2).val < 4 := (x 2).isLt
  have h3 : (x 3).val < 1024 := (x 3).isLt
  rw [Rect.mem_set_unit]
  constructor
  · intro h
    have h0 := h 0
    have h1 := h 1
    simp at h0 h1
    omega
  · rintro ⟨e0, e1⟩ a
    match a with
    | 0 => simp; omega
    | 1 => simp; omega
    | 2 => simp; omega
    | 3 => simp; omega

theorem sRect_disjoint (mb mb' : Fin 2 × Fin 4) (h : mb ≠ mb') : Disjoint (sRect mb).set (sRect mb').set := by
  refine Finset.disjoint_left.mpr fun x hx hx' => h ?_
  obtain ⟨a0, a1⟩ := (mem_sRect x mb).mp hx
  obtain ⟨b0, b1⟩ := (mem_sRect x mb').mp hx'
  exact Prod.ext (Fin.ext (a0.symm.trans b0)) (Fin.ext (a1.symm.trans b1))
theorem sRect_cover (x : S2x4x4x1024.Idx) : ∃ mb : Fin 2 × Fin 4, x ∈ (sRect mb).set :=
  ⟨(⟨(x 0).val, (x 0).isLt⟩, ⟨(x 1).val, (x 1).isLt⟩), (mem_sRect x _).mpr ⟨rfl, rfl⟩⟩

theorem sB_slot_set (off : Fin 4 → Nat) (inb : ∀ a, off a + S1x1x4x1024.size a ≤ S2x4x4x1024.size a) :
    (((sB : Memref sig .scVector .vmem S2x4x4x1024 .f32).slice (Rect.unit (s := S2x4x4x1024) off S1x1x4x1024.size inb) (fun _ => rfl)).squeeze S4x1024
        squeezes_S1x1x4x1024_S4x1024).view.set
      = (Rect.unit (s := S2x4x4x1024) off S1x1x4x1024.size inb).set := by
  show (((View.whole (cc0_scratch2 : Ref sig .scVector)).slice (Rect.unit (s := S2x4x4x1024) off S1x1x4x1024.size inb)).reshape S4x1024
      squeezes_S1x1x4x1024_S4x1024.numel_eq).set = _
  rw [View.set_reshape, View.set_slice_whole]

theorem sS00_set : (sS00 : Memref sig .scVector .vmem S4x1024 .f32).view.set = (sRect (0, 0)).set := sB_slot_set _ _
theorem sS01_set : (sS01 : Memref sig .scVector .vmem S4x1024 .f32).view.set = (sRect (0, 1)).set := sB_slot_set _ _
theorem sS02_set : (sS02 : Memref sig .scVector .vmem S4x1024 .f32).view.set = (sRect (0, 2)).set := sB_slot_set _ _
theorem sS03_set : (sS03 : Memref sig .scVector .vmem S4x1024 .f32).view.set = (sRect (0, 3)).set := sB_slot_set _ _
theorem sS10_set : (sS10 : Memref sig .scVector .vmem S4x1024 .f32).view.set = (sRect (1, 0)).set := sB_slot_set _ _
theorem sS11_set : (sS11 : Memref sig .scVector .vmem S4x1024 .f32).view.set = (sRect (1, 1)).set := sB_slot_set _ _
theorem sS12_set : (sS12 : Memref sig .scVector .vmem S4x1024 .f32).view.set = (sRect (1, 2)).set := sB_slot_set _ _
theorem sS13_set : (sS13 : Memref sig .scVector .vmem S4x1024 .f32).view.set = (sRect (1, 3)).set := sB_slot_set _ _
theorem sS00_pts (d : Dev nD) (c : Fin τ.nSC) (i : Fin τ.nSub) (f : Buf (Elt F) ((V d c i).loc cc0_scratch2)) :
    (sS00.view.loc (V d c i) ↦[sS00.view.set]{fullShare} f : sProp 𝕄) = ((V d c i).loc cc0_scratch2 ↦[(sRect (0, 0)).set]{fullShare} f) := by rw [sS00_set]
theorem sS01_pts (d : Dev nD) (c : Fin τ.nSC) (i : Fin τ.nSub) (f : Buf (Elt F) ((V d c i).loc cc0_scratch2)) :
    (sS01.view.loc (V d c i) ↦[sS01.view.set]{fullShare} f : sProp 𝕄) = ((V d c i).loc cc0_scratch2 ↦[(sRect (0, 1)).set]{fullShare} f) := by rw [sS01_set]
theorem sS02_pts (d : Dev nD) (c : Fin τ.nSC) (i : Fin τ.nSub) (f : Buf (Elt F) ((V d c i).loc cc0_scratch2)) :
    (sS02.view.loc (V d c i) ↦[sS02.view.set]{fullShare} f : sProp 𝕄) = ((V d c i).loc cc0_scratch2 ↦[(sRect (0, 2)).set]{fullShare} f) := by rw [sS02_set]
theorem sS03_pts (d : Dev nD) (c : Fin τ.nSC) (i : Fin τ.nSub) (f : Buf (Elt F) ((V d c i).loc cc0_scratch2)) :
    (sS03.view.loc (V d c i) ↦[sS03.view.set]{fullShare} f : sProp 𝕄) = ((V d c i).loc cc0_scratch2 ↦[(sRect (0, 3)).set]{fullShare} f) := by rw [sS03_set]
theorem sS10_pts (d : Dev nD) (c : Fin τ.nSC) (i : Fin τ.nSub) (f : Buf (Elt F) ((V d c i).loc cc0_scratch2)) :
    (sS10.view.loc (V d c i) ↦[sS10.view.set]{fullShare} f : sProp 𝕄) = ((V d c i).loc cc0_scratch2 ↦[(sRect (1, 0)).set]{fullShare} f) := by rw [sS10_set]
theorem sS11_pts (d : Dev nD) (c : Fin τ.nSC) (i : Fin τ.nSub) (f : Buf (Elt F) ((V d c i).loc cc0_scratch2)) :
    (sS11.view.loc (V d c i) ↦[sS11.view.set]{fullShare} f : sProp 𝕄) = ((V d c i).loc cc0_scratch2 ↦[(sRect (1, 1)).set]{fullShare} f) := by rw [sS11_set]
theorem sS12_pts (d : Dev nD) (c : Fin τ.nSC) (i : Fin τ.nSub) (f : Buf (Elt F) ((V d c i).loc cc0_scratch2)) :
    (sS12.view.loc (V d c i) ↦[sS12.view.set]{fullShare} f : sProp 𝕄) = ((V d c i).loc cc0_scratch2 ↦[(sRect (1, 2)).set]{fullShare} f) := by rw [sS12_set]
theorem sS13_pts (d : Dev nD) (c : Fin τ.nSC) (i : Fin τ.nSub) (f : Buf (Elt F) ((V d c i).loc cc0_scratch2)) :
    (sS13.view.loc (V d c i) ↦[sS13.view.set]{fullShare} f : sProp 𝕄) = ((V d c i).loc cc0_scratch2 ↦[(sRect (1, 3)).set]{fullShare} f) := by rw [sS13_set]

theorem univ_fin2x4 : (Finset.univ : Finset (Fin 2 × Fin 4)) = {(0, 0), (0, 1), (0, 2), (0, 3), (1, 0), (1, 1), (1, 2), (1, 3)} := by decide
theorem bigSep_fin2x4 (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) := by
  rw [univ_fin2x4, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem half_set (m m' : Fin 2) (h : m ≠ m') :
    ((((Finset.univ \ (sRect (m', 0)).set) \ (sRect (m', 1)).set) \ (sRect (m', 2)).set) \ (sRect (m', 3)).set)
      = (Finset.univ : Finset (Fin 4)).biUnion fun b => (sRect (m, b)).set := by
  ext x
  have hx0 : (x 0).val < 2 := (x 0).isLt
  have hx1 : (x 1).val < 4 := (x 1).isLt
  have hm : m.val ≠ m'.val := fun e => h (Fin.ext e)
  have hmv := m.isLt
  have hm'v := m'.isLt
  simp only [Finset.mem_sdiff, Finset.mem_univ, true_and, Finset.mem_biUnion, mem_sRect]
  constructor
  · rintro ⟨⟨⟨n0, n1⟩, n2⟩, n3⟩
    refine ⟨⟨(x 1).val, hx1⟩, ?_, rfl⟩
    simp only [Fin.val_zero, Fin.val_one, Fin.val_two] at n0 n1 n2
    omega
  · rintro ⟨b, e0, -⟩
    refine ⟨⟨⟨fun hh => ?_, fun hh => ?_⟩, fun hh => ?_⟩, fun hh => ?_⟩ <;> omega

section Svb
variable (d : Dev nD) (c : Fin τ.nSC) (i : Fin τ.nSub)

theorem svb_half (m m' : Fin 2) (h : m ≠ m') (f : Buf (Elt F) ((V d c i).loc cc0_scratch2)) :
    ((V d c i).loc cc0_scratch2 ↦[((((Finset.univ \ (sRect (m', 0)).set) \ (sRect (m', 1)).set) \ (sRect (m', 2)).set) \ (sRect (m', 3)).set)]{fullShare} f : sProp 𝕄)
      = iprop(((V d c i).loc cc0_scratch2 ↦[(sRect (m, 0)).set]{fullShare} f) ∗ ((V d c i).loc cc0_scratch2 ↦[(sRect (m, 1)).set]{fullShare} f)
          ∗ ((V d c i).loc cc0_scratch2 ↦[(sRect (m, 2)).set]{fullShare} f) ∗ ((V d c i).loc cc0_scratch2 ↦[(sRect (m, 3)).set]{fullShare} f)) := by
  rw [half_set m m' h, pointsTo_biUnion Finset.univ (ℓ := (V d c i).loc cc0_scratch2) (fun b : Fin 4 => (sRect (m, b)).set)
    (fun b _ b' _ hb => sRect_disjoint _ _ fun e => hb (Prod.mk.inj e).2), bigSep_fin4]

theorem svb_half0 (f : Buf (Elt F) ((V d c i).loc cc0_scratch2)) :
    (sB.view.loc (V d c i) ↦[(((Finset.univ \ sS10.view.set) \ sS11.view.set) \ sS12.view.set) \ sS13.view.set]{fullShare} f : sProp 𝕄)
      = iprop((sS00.view.loc (V d c i) ↦[sS00.view.set]{fullShare} f)
        ∗ (sS01.view.loc (V d c i) ↦[sS01.view.set]{fullShare} f)
        ∗ (sS02.view.loc (V d c i) ↦[sS02.view.set]{fullShare} f)
        ∗ (sS03.view.loc (V d c i) ↦[sS03.view.set]{fullShare} f)) := by
  rw [sS10_set, sS11_set, sS12_set, sS13_set]
  exact (svb_half d c i 0 1 (by decide) f).trans
    (sep_congr' (sS00_pts d c i f).symm (sep_congr' (sS01_pts d c i f).symm (sep_congr' (sS02_pts d c i f).symm ((sS03_pts d c i f).symm))))

theorem svb_half1 (f : Buf (Elt F) ((V d c i).loc cc0_scratch2)) :
    (sB.view.loc (V d c i) ↦[(((Finset.univ \ sS00.view.set) \ sS01.view.set) \ sS02.view.set) \ sS03.view.set]{fullShare} f : sProp 𝕄)
      = iprop((sS10.view.loc (V d c i) ↦[sS10.view.set]{fullShare} f)
        ∗ (sS11.view.loc (V d c i) ↦[sS11.view.set]{fullShare} f)
        ∗ (sS12.view.loc (V d c i) ↦[sS12.view.set]{fullShare} f)
        ∗ (sS13.view.loc (V d c i) ↦[sS13.view.set]{fullShare} f)) := by
  rw [sS00_set, sS01_set, sS02_set, sS03_set]
  exact (svb_half d c i 1 0 (by decide) f).trans
    (sep_congr' (sS10_pts d c i f).symm (sep_congr' (sS11_pts d c i f).symm (sep_congr' (sS12_pts d c i f).symm ((sS13_pts d c i f).symm))))

/-- The sum buffer held whole is its eight windows held one by one at the same contents. -/
theorem svb_slots (f : Buf (Elt F) ((V d c i).loc cc0_scratch2)) :
    (sB.view.loc (V d c i) ↦{fullShare} f : sProp 𝕄)
      = iprop((sS00.view.loc (V d c i) ↦[sS00.view.set]{fullShare} f)
        ∗ (sS01.view.loc (V d c i) ↦[sS01.view.set]{fullShare} f)
        ∗ (sS02.view.loc (V d c i) ↦[sS02.view.set]{fullShare} f)
        ∗ (sS03.view.loc (V d c i) ↦[sS03.view.set]{fullShare} f)
        ∗ (sS10.view.loc (V d c i) ↦[sS10.view.set]{fullShare} f)
        ∗ (sS11.view.loc (V d c i) ↦[sS11.view.set]{fullShare} f)
        ∗ (sS12.view.loc (V d c i) ↦[sS12.view.set]{fullShare} f)
        ∗ (sS13.view.loc (V d c i) ↦[sS13.view.set]{fullShare} f)) :=
  (pointsTo_cover (ℓ := (V d c i).loc cc0_scratch2) (fun mb : Fin 2 × Fin 4 => (sRect mb).set) sRect_disjoint sRect_cover f).trans
    ((bigSep_fin2x4 _).trans (sep_congr' (sS00_pts d c i f).symm (sep_congr' (sS01_pts d c i f).symm (sep_congr' (sS02_pts d c i f).symm (sep_congr' (sS03_pts d c i f).symm (sep_congr' (sS10_pts d c i f).symm (sep_congr' (sS11_pts d c i f).symm (sep_congr' (sS12_pts d c i f).symm ((sS13_pts d c i f).symm)))))))))

theorem sep4_assoc_eq (A B C D R : sProp 𝕄) : (iprop((A ∗ B ∗ C ∗ D) ∗ R) : sProp 𝕄) = iprop(A ∗ B ∗ C ∗ D ∗ R) := by
  refine BI.equiv_iff.mp ⟨(show iprop((A ∗ B ∗ C ∗ D) ∗ R) ⊢ iprop(A ∗ B ∗ C ∗ D ∗ R) from ?_), (show iprop(A ∗ B ∗ C ∗ D ∗ R) ⊢ iprop((A ∗ B ∗ C ∗ D) ∗ R) from ?_)⟩
  · iintro ⟨⟨HA, HB, HC, HD⟩, HR⟩
    isplitl [HA]; · iexact HA
    isplitl [HB]; · iexact HB
    isplitl [HC]; · iexact HC
    isplitl [HD]; · iexact HD
    iexact HR
  · iintro ⟨HA, HB, HC, HD, HR⟩
    isplitl [HA HB HC HD]
    · isplitl [HA]; · iexact HA
      isplitl [HB]; · iexact HB
      isplitl [HC]; · iexact HC
      iexact HD
    iexact HR

theorem svb_join (f0 f1 : Buf (Elt F) ((V d c i).loc cc0_scratch2)) :
    iprop(((sS00.view.loc (V d c i) ↦[sS00.view.set]{fullShare} f0)
        ∗ (sS01.view.loc (V d c i) ↦[sS01.view.set]{fullShare} f0)
        ∗ (sS02.view.loc (V d c i) ↦[sS02.view.set]{fullShare} f0)
        ∗ (sS03.view.loc (V d c i) ↦[sS03.view.set]{fullShare} f0))
        ∗ ((sS10.view.loc (V d c i) ↦[sS10.view.set]{fullShare} f1)
        ∗ (sS11.view.loc (V d c i) ↦[sS11.view.set]{fullShare} f1)
        ∗ (sS12.view.loc (V d c i) ↦[sS12.view.set]{fullShare} f1)
        ∗ (sS13.view.loc (V d c i) ↦[sS13.view.set]{fullShare} f1)))
      ⊢ (iprop(∃ f, sB.view.loc (V d c i) ↦{fullShare} f) : sProp 𝕄) := by
  refine Entails.trans (Entails.of_eq ?_)
    (pointsTo_cover_join (ℓ := (V d c i).loc cc0_scratch2) (fun mb : Fin 2 × Fin 4 => (sRect mb).set) sRect_disjoint sRect_cover
      (fun mb => ![f0, f1] mb.1))
  exact (sep4_assoc_eq _ _ _ _ _).trans ((sep_congr' (sS00_pts d c i f0) (sep_congr' (sS01_pts d c i f0) (sep_congr' (sS02_pts d c i f0) (sep_congr' (sS03_pts d c i f0) (sep_congr' (sS10_pts d c i f1) (sep_congr' (sS11_pts d c i f1) (sep_congr' (sS12_pts d c i f1) ((sS13_pts d c i f1))))))))).trans
    (bigSep_fin2x4 (fun mb : Fin 2 × Fin 4 => ((V d c i).loc cc0_scratch2 ↦[(sRect mb).set]{fullShare} ![f0, f1] mb.1 : sProp 𝕄))).symm)
end Svb

end Cert.Proof.KI

end
-- ==== Proof.KInner.lean ====
import proofs.«210091_g81140522156176_cont_9to1_m_468_11_alg».proof.Proof.KInnerTrip
import proofs.«210091_g81140522156176_cont_9to1_m_468_11_alg».proof.Proof.Gen.KernelIdeal.Skeleton
import Idealize.ShloMosaic.Lib.Tactic
import Idealize.ShloMosaic.Lib.Pipeline.Kit
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner0

variable (d : Dev nD) (L : grid0.Coords)
  (X0 : Buf (Elt F) (pS0.view.loc (thr d L))) (X10 : Buf (Elt F) (xS00.view.loc (thr d L))) (X11 : Buf (Elt F) (xS01.view.loc (thr d L)))
  (X12 : Buf (Elt F) (xS02.view.loc (thr d L))) (X13 : Buf (Elt F) (xS03.view.loc (thr d L)))

theorem slotSum0 (b : Fin 4) (l : Fin 1024) (j' : Fin 4) :
    FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))
      = rowVal (0 : Fin 4) X0 (selX X10 X11 X12 X13) b j' l := by
  refine congrArg₂ FloatOps.addf ?_ (pslot_read (0 : Fin 4) _ X0 j' l)
  match b with
  | ⟨0, hb⟩ =>
    show View.read (Elt F) xS00.view X10 (ValueIdx.ix2 j' l) = X10 (ValueIdx.ix4 (0 : Fin 4) (⟨0, hb⟩ : Fin 4) j' l)
    exact xslot_read (0 : Fin 4) (⟨0, hb⟩ : Fin 4) _ X10 j' l
  | ⟨1, hb⟩ =>
    show View.read (Elt F) xS01.view X11 (ValueIdx.ix2 j' l) = X11 (ValueIdx.ix4 (0 : Fin 4) (⟨1, hb⟩ : Fin 4) j' l)
    exact xslot_read (0 : Fin 4) (⟨1, hb⟩ : Fin 4) _ X11 j' l
  | ⟨2, hb⟩ =>
    show View.read (Elt F) xS02.view X12 (ValueIdx.ix2 j' l) = X12 (ValueIdx.ix4 (0 : Fin 4) (⟨2, hb⟩ : Fin 4) j' l)
    exact xslot_read (0 : Fin 4) (⟨2, hb⟩ : Fin 4) _ X12 j' l
  | ⟨3, hb⟩ =>
    show View.read (Elt F) xS03.view X13 (ValueIdx.ix2 j' l) = X13 (ValueIdx.ix4 (0 : Fin 4) (⟨3, hb⟩ : Fin 4) j' l)
    exact xslot_read (0 : Fin 4) (⟨3, hb⟩ : Fin 4) _ X13 j' l

/-- Before row j: the five source blocks as they were, and rows below j of the destination block at activation plus table row. -/
def innerInv0 (j : ℕ) (_ : PUnit) : sProp 𝕄 :=
  iprop((pS0.view.loc (thr d L) ↦[pS0.view.set]{fullShare} X0) ∗ (xS00.view.loc (thr d L) ↦[xS00.view.set]{fullShare} X10) ∗ (xS01.view.loc (thr d L) ↦[xS01.view.set]{fullShare} X11)
    ∗ (xS02.view.loc (thr d L) ↦[xS02.view.set]{fullShare} X12) ∗ (xS03.view.loc (thr d L) ↦[xS03.view.set]{fullShare} X13)
    ∗ ∃ f', (sB.view.loc (thr d L) ↦[(((Finset.univ \ sS10.view.set) \ sS11.view.set) \ sS12.view.set) \ sS13.view.set]{fullShare} f')
      ∗ ⌜∀ (b : Fin 4) (l : Fin 1024) (j' : Fin 4), j'.val < j → f' (ValueIdx.ix4 (0 : Fin 2) b j' l)
          = FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner0_region (v2 : BitVec 32) (t1 : Fin k0_t1_loop.trips) (arg14 v186 : BitVec 32)
    (t2 : Fin (Scf.trips k0_t2_loop.lb k0_t2_loop.ub k0_t2_loop.st)) (acc : PUnit) :
    innerInv0 d L X0 X10 X11 X12 X13 t2.val acc
      ⊢ wp frame (wpE (defs₀ (F := F)) 𝒱₀ (thr d L) none) Set.univ
          (k0_t2_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 arg14 v186 t2 acc)
          fun x => innerInv0 d L X0 X10 X11 X12 X13 (t2.val + 1) x := by
  have ht2 : t2.val < 4 := Nat.lt_of_lt_of_le t2.isLt k0_t2_abs.2.1
  unfold innerInv0
  unfold k0_t2_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (0 : Fin 4) (0 : Fin 2) t2.val ht2 X0 (selX X10 X11 X12 X13) f'
      (fun b j l h => (hIH b l j h).trans (slotSum0 d L X0 X10 X11 X12 X13 b l j)) b j' l hj)).trans
    (slotSum0 d L X0 X10 X11 X12 X13 b l j').symm
  case hL =>
    iterate 10 sl_unfold_run_names
    simp only [readAt_unit_closed]
    rfl

end Inner0

section Inner0W

variable (d : Dev nD) (L : grid0.Coords)
  (X0 : Buf (Elt F) (pS0.view.loc (thr d L))) (X10 : Buf (Elt F) (xS00.view.loc (thr d L))) (X11 : Buf (Elt F) (xS01.view.loc (thr d L)))
  (X12 : Buf (Elt F) (xS02.view.loc (thr d L))) (X13 : Buf (Elt F) (xS03.view.loc (thr d L)))

def innerInv0W (j : ℕ) (_ : PUnit) : sProp 𝕄 :=
  iprop((pS0.view.loc (thr d L) ↦[pS0.view.set]{fullShare} X0) ∗ (xS00.view.loc (thr d L) ↦[xS00.view.set]{fullShare} X10) ∗ (xS01.view.loc (thr d L) ↦[xS01.view.set]{fullShare} X11)
    ∗ (xS02.view.loc (thr d L) ↦[xS02.view.set]{fullShare} X12) ∗ (xS03.view.loc (thr d L) ↦[xS03.view.set]{fullShare} X13)
    ∗ ∃ f', (sB.view.loc (thr d L) ↦{fullShare} f')
      ∗ ⌜∀ (b : Fin 4) (l : Fin 1024) (j' : Fin 4), j'.val < j → f' (ValueIdx.ix4 (0 : Fin 2) b j' l)
          = FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))⌝)

set_option sl_exec.closedPieces true in
set_option maxHeartbeats 8000000 in
set_option maxRecDepth 65536 in
theorem inner0W_region (v2 : BitVec 32) (t1 : Fin k0_t1_loop.trips) (arg14 v186 : BitVec 32)
    (t2 : Fin (Scf.trips k0_t2_loop.lb k0_t2_loop.ub k0_t2_loop.st)) (acc : PUnit) :
    innerInv0W d L X0 X10 X11 X12 X13 t2.val acc
      ⊢ wp frame (wpE (defs₀ (F := F)) 𝒱₀ (thr d L) none) Set.univ
          (k0_t2_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 arg14 v186 t2 acc)
          fun x => innerInv0W d L X0 X10 X11 X12 X13 (t2.val + 1) x := by
  have ht2 : t2.val < 4 := Nat.lt_of_lt_of_le t2.isLt k0_t2_abs.2.1
  unfold innerInv0W
  unfold k0_t2_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (0 : Fin 4) (0 : Fin 2) t2.val ht2 X0 (selX X10 X11 X12 X13) f'
      (fun b j l h => (hIH b l j h).trans (slotSum0 d L X0 X10 X11 X12 X13 b l j)) b j' l hj)).trans
    (slotSum0 d L X0 X10 X11 X12 X13 b l j').symm
  case hL =>
    iterate 10 sl_unfold_run_names
    simp only [readAt_unit_closed]
    rfl

end Inner0W

end Cert.Proof.KI

end
-- ==== Proof.KInner1.lean ====
import proofs.«210091_g81140522156176_cont_9to1_m_468_11_alg».proof.Proof.KInnerTrip
import proofs.«210091_g81140522156176_cont_9to1_m_468_11_alg».proof.Proof.Gen.KernelIdeal.Skeleton
import Idealize.ShloMosaic.Lib.Tactic
import Idealize.ShloMosaic.Lib.Pipeline.Kit
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner1

variable (d : Dev nD) (L : grid0.Coords)
  (X0 : Buf (Elt F) (pS1.view.loc (thr d L))) (X10 : Buf (Elt F) (xS10.view.loc (thr d L))) (X11 : Buf (Elt F) (xS11.view.loc (thr d L)))
  (X12 : Buf (Elt F) (xS12.view.loc (thr d L))) (X13 : Buf (Elt F) (xS13.view.loc (thr d L)))

theorem slotSum1 (b : Fin 4) (l : Fin 1024) (j' : Fin 4) :
    FloatOps.addf ((if b.val = 0 then xS10.view.read (Elt F) X10 else if b.val = 1 then xS11.view.read (Elt F) X11 else if b.val = 2 then xS12.view.read (Elt F) X12 else xS13.view.read (Elt F) X13) (ValueIdx.ix2 j' l)) (pS1.view.read (Elt F) X0 (ValueIdx.ix2 j' l))
      = rowVal (1 : Fin 4) X0 (selX X10 X11 X12 X13) b j' l := by
  refine congrArg₂ FloatOps.addf ?_ (pslot_read (1 : Fin 4) _ X0 j' l)
  match b with
  | ⟨0, hb⟩ =>
    show View.read (Elt F) xS10.view X10 (ValueIdx.ix2 j' l) = X10 (ValueIdx.ix4 (1 : Fin 4) (⟨0, hb⟩ : Fin 4) j' l)
    exact xslot_read (1 : Fin 4) (⟨0, hb⟩ : Fin 4) _ X10 j' l
  | ⟨1, hb⟩ =>
    show View.read (Elt F) xS11.view X11 (ValueIdx.ix2 j' l) = X11 (ValueIdx.ix4 (1 : Fin 4) (⟨1, hb⟩ : Fin 4) j' l)
    exact xslot_read (1 : Fin 4) (⟨1, hb⟩ : Fin 4) _ X11 j' l
  | ⟨2, hb⟩ =>
    show View.read (Elt F) xS12.view X12 (ValueIdx.ix2 j' l) = X12 (ValueIdx.ix4 (1 : Fin 4) (⟨2, hb⟩ : Fin 4) j' l)
    exact xslot_read (1 : Fin 4) (⟨2, hb⟩ : Fin 4) _ X12 j' l
  | ⟨3, hb⟩ =>
    show View.read (Elt F) xS13.view X13 (ValueIdx.ix2 j' l) = X13 (ValueIdx.ix4 (1 : Fin 4) (⟨3, hb⟩ : Fin 4) j' l)
    exact xslot_read (1 : Fin 4) (⟨3, hb⟩ : Fin 4) _ X13 j' l

/-- Before row j: the five source blocks as they were, and rows below j of the destination block at activation plus table row. -/
def innerInv1 (j : ℕ) (_ : PUnit) : sProp 𝕄 :=
  iprop((pS1.view.loc (thr d L) ↦[pS1.view.set]{fullShare} X0) ∗ (xS10.view.loc (thr d L) ↦[xS10.view.set]{fullShare} X10) ∗ (xS11.view.loc (thr d L) ↦[xS11.view.set]{fullShare} X11)
    ∗ (xS12.view.loc (thr d L) ↦[xS12.view.set]{fullShare} X12) ∗ (xS13.view.loc (thr d L) ↦[xS13.view.set]{fullShare} X13)
    ∗ ∃ f', (sB.view.loc (thr d L) ↦[(((Finset.univ \ sS00.view.set) \ sS01.view.set) \ sS02.view.set) \ sS03.view.set]{fullShare} f')
      ∗ ⌜∀ (b : Fin 4) (l : Fin 1024) (j' : Fin 4), j'.val < j → f' (ValueIdx.ix4 (1 : Fin 2) b j' l)
          = FloatOps.addf ((if b.val = 0 then xS10.view.read (Elt F) X10 else if b.val = 1 then xS11.view.read (Elt F) X11 else if b.val = 2 then xS12.view.read (Elt F) X12 else xS13.view.read (Elt F) X13) (ValueIdx.ix2 j' l)) (pS1.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner1_region (v2 : BitVec 32) (t1 : Fin k0_t1_loop.trips) (v269 c0_i32_348 c1_i32_350 : BitVec 32)
    (t2 : Fin (Scf.trips k0_t3_loop.lb k0_t3_loop.ub k0_t3_loop.st)) (acc : PUnit) :
    innerInv1 d L X0 X10 X11 X12 X13 t2.val acc
      ⊢ wp frame (wpE (defs₀ (F := F)) 𝒱₀ (thr d L) none) Set.univ
          (k0_t3_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v269 c0_i32_348 c1_i32_350 t2 acc)
          fun x => innerInv1 d L X0 X10 X11 X12 X13 (t2.val + 1) x := by
  have ht2 : t2.val < 4 := Nat.lt_of_lt_of_le t2.isLt k0_t3_abs.2.1
  unfold innerInv1
  unfold k0_t3_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (1 : Fin 2) b j' l)) ?hL).trans
    (trip_value (1 : Fin 4) (1 : Fin 2) t2.val ht2 X0 (selX X10 X11 X12 X13) f'
      (fun b j l h => (hIH b l j h).trans (slotSum1 d L X0 X10 X11 X12 X13 b l j)) b j' l hj)).trans
    (slotSum1 d L X0 X10 X11 X12 X13 b l j').symm
  case hL =>
    iterate 10 sl_unfold_run_names
    simp only [readAt_unit_closed]
    rfl

end Inner1

end Cert.Proof.KI

end
-- ==== Proof.KInner2.lean ====
import proofs.«210091_g81140522156176_cont_9to1_m_468_11_alg».proof.Proof.KInnerTrip
import proofs.«210091_g81140522156176_cont_9to1_m_468_11_alg».proof.Proof.Gen.KernelIdeal.Skeleton
import Idealize.ShloMosaic.Lib.Tactic
import Idealize.ShloMosaic.Lib.Pipeline.Kit
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner2

variable (d : Dev nD) (L : grid0.Coords)
  (X0 : Buf (Elt F) (pS2.view.loc (thr d L))) (X10 : Buf (Elt F) (xS20.view.loc (thr d L))) (X11 : Buf (Elt F) (xS21.view.loc (thr d L)))
  (X12 : Buf (Elt F) (xS22.view.loc (thr d L))) (X13 : Buf (Elt F) (xS23.view.loc (thr d L)))

theorem slotSum2 (b : Fin 4) (l : Fin 1024) (j' : Fin 4) :
    FloatOps.addf ((if b.val = 0 then xS20.view.read (Elt F) X10 else if b.val = 1 then xS21.view.read (Elt F) X11 else if b.val = 2 then xS22.view.read (Elt F) X12 else xS23.view.read (Elt F) X13) (ValueIdx.ix2 j' l)) (pS2.view.read (Elt F) X0 (ValueIdx.ix2 j' l))
      = rowVal (2 : Fin 4) X0 (selX X10 X11 X12 X13) b j' l := by
  refine congrArg₂ FloatOps.addf ?_ (pslot_read (2 : Fin 4) _ X0 j' l)
  match b with
  | ⟨0, hb⟩ =>
    show View.read (Elt F) xS20.view X10 (ValueIdx.ix2 j' l) = X10 (ValueIdx.ix4 (2 : Fin 4) (⟨0, hb⟩ : Fin 4) j' l)
    exact xslot_read (2 : Fin 4) (⟨0, hb⟩ : Fin 4) _ X10 j' l
  | ⟨1, hb⟩ =>
    show View.read (Elt F) xS21.view X11 (ValueIdx.ix2 j' l) = X11 (ValueIdx.ix4 (2 : Fin 4) (⟨1, hb⟩ : Fin 4) j' l)
    exact xslot_read (2 : Fin 4) (⟨1, hb⟩ : Fin 4) _ X11 j' l
  | ⟨2, hb⟩ =>
    show View.read (Elt F) xS22.view X12 (ValueIdx.ix2 j' l) = X12 (ValueIdx.ix4 (2 : Fin 4) (⟨2, hb⟩ : Fin 4) j' l)
    exact xslot_read (2 : Fin 4) (⟨2, hb⟩ : Fin 4) _ X12 j' l
  | ⟨3, hb⟩ =>
    show View.read (Elt F) xS23.view X13 (ValueIdx.ix2 j' l) = X13 (ValueIdx.ix4 (2 : Fin 4) (⟨3, hb⟩ : Fin 4) j' l)
    exact xslot_read (2 : Fin 4) (⟨3, hb⟩ : Fin 4) _ X13 j' l

/-- Before row j: the five source blocks as they were, and rows below j of the destination block at activation plus table row. -/
def innerInv2 (j : ℕ) (_ : PUnit) : sProp 𝕄 :=
  iprop((pS2.view.loc (thr d L) ↦[pS2.view.set]{fullShare} X0) ∗ (xS20.view.loc (thr d L) ↦[xS20.view.set]{fullShare} X10) ∗ (xS21.view.loc (thr d L) ↦[xS21.view.set]{fullShare} X11)
    ∗ (xS22.view.loc (thr d L) ↦[xS22.view.set]{fullShare} X12) ∗ (xS23.view.loc (thr d L) ↦[xS23.view.set]{fullShare} X13)
    ∗ ∃ f', (sB.view.loc (thr d L) ↦[(((Finset.univ \ sS10.view.set) \ sS11.view.set) \ sS12.view.set) \ sS13.view.set]{fullShare} f')
      ∗ ⌜∀ (b : Fin 4) (l : Fin 1024) (j' : Fin 4), j'.val < j → f' (ValueIdx.ix4 (0 : Fin 2) b j' l)
          = FloatOps.addf ((if b.val = 0 then xS20.view.read (Elt F) X10 else if b.val = 1 then xS21.view.read (Elt F) X11 else if b.val = 2 then xS22.view.read (Elt F) X12 else xS23.view.read (Elt F) X13) (ValueIdx.ix2 j' l)) (pS2.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner2_region (v2 : BitVec 32) (t1 : Fin k0_t1_loop.trips) (v352 : BitVec 32)
    (t2 : Fin (Scf.trips k0_t4_loop.lb k0_t4_loop.ub k0_t4_loop.st)) (acc : PUnit) :
    innerInv2 d L X0 X10 X11 X12 X13 t2.val acc
      ⊢ wp frame (wpE (defs₀ (F := F)) 𝒱₀ (thr d L) none) Set.univ
          (k0_t4_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v352 t2 acc)
          fun x => innerInv2 d L X0 X10 X11 X12 X13 (t2.val + 1) x := by
  have ht2 : t2.val < 4 := Nat.lt_of_lt_of_le t2.isLt k0_t4_abs.2.1
  unfold innerInv2
  unfold k0_t4_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (2 : Fin 4) (0 : Fin 2) t2.val ht2 X0 (selX X10 X11 X12 X13) f'
      (fun b j l h => (hIH b l j h).trans (slotSum2 d L X0 X10 X11 X12 X13 b l j)) b j' l hj)).trans
    (slotSum2 d L X0 X10 X11 X12 X13 b l j').symm
  case hL =>
    iterate 10 sl_unfold_run_names
    simp only [readAt_unit_closed]
    rfl

end Inner2

end Cert.Proof.KI

end
-- ==== Proof.KInner3.lean ====
import proofs.«210091_g81140522156176_cont_9to1_m_468_11_alg».proof.Proof.KInnerTrip
import proofs.«210091_g81140522156176_cont_9to1_m_468_11_alg».proof.Proof.Gen.KernelIdeal.Skeleton
import Idealize.ShloMosaic.Lib.Tactic
import Idealize.ShloMosaic.Lib.Pipeline.Kit
import Idealize.ShloMosaic.Lib.Batch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner3

variable (d : Dev nD) (L : grid0.Coords)
  (X0 : Buf (Elt F) (pS3.view.loc (thr d L))) (X10 : Buf (Elt F) (xS30.view.loc (thr d L))) (X11 : Buf (Elt F) (xS31.view.loc (thr d L)))
  (X12 : Buf (Elt F) (xS32.view.loc (thr d L))) (X13 : Buf (Elt F) (xS33.view.loc (thr d L)))

theorem slotSum3 (b : Fin 4) (l : Fin 1024) (j' : Fin 4) :
    FloatOps.addf ((if b.val = 0 then xS30.view.read (Elt F) X10 else if b.val = 1 then xS31.view.read (Elt F) X11 else if b.val = 2 then xS32.view.read (Elt F) X12 else xS33.view.read (Elt F) X13) (ValueIdx.ix2 j' l)) (pS3.view.read (Elt F) X0 (ValueIdx.ix2 j' l))
      = rowVal (3 : Fin 4) X0 (selX X10 X11 X12 X13) b j' l := by
  refine congrArg₂ FloatOps.addf ?_ (pslot_read (3 : Fin 4) _ X0 j' l)
  match b with
  | ⟨0, hb⟩ =>
    show View.read (Elt F) xS30.view X10 (ValueIdx.ix2 j' l) = X10 (ValueIdx.ix4 (3 : Fin 4) (⟨0, hb⟩ : Fin 4) j' l)
    exact xslot_read (3 : Fin 4) (⟨0, hb⟩ : Fin 4) _ X10 j' l
  | ⟨1, hb⟩ =>
    show View.read (Elt F) xS31.view X11 (ValueIdx.ix2 j' l) = X11 (ValueIdx.ix4 (3 : Fin 4) (⟨1, hb⟩ : Fin 4) j' l)
    exact xslot_read (3 : Fin 4) (⟨1, hb⟩ : Fin 4) _ X11 j' l
  | ⟨2, hb⟩ =>
    show View.read (Elt F) xS32.view X12 (ValueIdx.ix2 j' l) = X12 (ValueIdx.ix4 (3 : Fin 4) (⟨2, hb⟩ : Fin 4) j' l)
    exact xslot_read (3 : Fin 4) (⟨2, hb⟩ : Fin 4) _ X12 j' l
  | ⟨3, hb⟩ =>
    show View.read (Elt F) xS33.view X13 (ValueIdx.ix2 j' l) = X13 (ValueIdx.ix4 (3 : Fin 4) (⟨3, hb⟩ : Fin 4) j' l)
    exact xslot_read (3 : Fin 4) (⟨3, hb⟩ : Fin 4) _ X13 j' l

/-- Before row j: the five source blocks as they were, and rows below j of the destination block at activation plus table row. -/
def innerInv3 (j : ℕ) (_ : PUnit) : sProp 𝕄 :=
  iprop((pS3.view.loc (thr d L) ↦[pS3.view.set]{fullShare} X0) ∗ (xS30.view.loc (thr d L) ↦[xS30.view.set]{fullShare} X10) ∗ (xS31.view.loc (thr d L) ↦[xS31.view.set]{fullShare} X11)
    ∗ (xS32.view.loc (thr d L) ↦[xS32.view.set]{fullShare} X12) ∗ (xS33.view.loc (thr d L) ↦[xS33.view.set]{fullShare} X13)
    ∗ ∃ f', (sB.view.loc (thr d L) ↦[(((Finset.univ \ sS00.view.set) \ sS01.view.set) \ sS02.view.set) \ sS03.view.set]{fullShare} f')
      ∗ ⌜∀ (b : Fin 4) (l : Fin 1024) (j' : Fin 4), j'.val < j → f' (ValueIdx.ix4 (1 : Fin 2) b j' l)
          = FloatOps.addf ((if b.val = 0 then xS30.view.read (Elt F) X10 else if b.val = 1 then xS31.view.read (Elt F) X11 else if b.val = 2 then xS32.view.read (Elt F) X12 else xS33.view.read (Elt F) X13) (ValueIdx.ix2 j' l)) (pS3.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner3_region (v2 : BitVec 32) (t1 : Fin k0_t1_loop.trips) (v464 : BitVec 32)
    (t2 : Fin (Scf.trips k0_t5_loop.lb k0_t5_loop.ub k0_t5_loop.st)) (acc : PUnit) :
    innerInv3 d L X0 X10 X11 X12 X13 t2.val acc
      ⊢ wp frame (wpE (defs₀ (F := F)) 𝒱₀ (thr d L) none) Set.univ
          (k0_t5_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v464 t2 acc)
          fun x => innerInv3 d L X0 X10 X11 X12 X13 (t2.val + 1) x := by
  have ht2 : t2.val < 4 := Nat.lt_of_lt_of_le t2.isLt k0_t5_abs.2.1
  unfold innerInv3
  unfold k0_t5_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (1 : Fin 2) b j' l)) ?hL).trans
    (trip_value (3 : Fin 4) (1 : Fin 2) t2.val ht2 X0 (selX X10 X11 X12 X13) f'
      (fun b j l h => (hIH b l j h).trans (slotSum3 d L X0 X10 X11 X12 X13 b l j)) b j' l hj)).trans
    (slotSum3 d L X0 X10 X11 X12 X13 b l j').symm
  case hL =>
    iterate 10 sl_unfold_run_names
    simp only [readAt_unit_closed]
    rfl

end Inner3

end Cert.Proof.KI

end
-- ==== Proof.KTrip.lean ====
import proofs.«210091_g81140522156176_cont_9to1_m_468_11_alg».proof.Proof.KFam
import proofs.«210091_g81140522156176_cont_9to1_m_468_11_alg».proof.Proof.KSvb
import proofs.«210091_g81140522156176_cont_9to1_m_468_11_alg».proof.Proof.KInner
import proofs.«210091_g81140522156176_cont_9to1_m_468_11_alg».proof.Proof.KInner1
import proofs.«210091_g81140522156176_cont_9to1_m_468_11_alg».proof.Proof.KInner2
import proofs.«210091_g81140522156176_cont_9to1_m_468_11_alg».proof.Proof.KInner3

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem c1_all : ∀ k : Fin k0_t1_loop.trips, k0_cond1 k = 1#1 := by decide
theorem c3_of : ∀ k : Fin k0_t1_loop.trips, k.val < 7 → k0_cond3 k = 1#1 := by decide
theorem c5_of : ∀ k : Fin k0_t1_loop.trips, k.val < 7 → k0_cond5 k = 1#1 := by decide
theorem c6_of : ∀ k : Fin k0_t1_loop.trips, k.val < 7 → k0_cond6 k = 1#1 := by decide
theorem c2_of : ∀ k : Fin k0_t1_loop.trips, 1 ≤ k.val → k0_cond2 k = 1#1 := by decide
theorem c4_of : ∀ k : Fin k0_t1_loop.trips, 1 ≤ k.val → k0_cond4 k = 1#1 := by decide
theorem c2_not : ∀ k : Fin k0_t1_loop.trips, k.val = 0 → ¬ k0_cond2 k = 1#1 := by decide
theorem c4_not : ∀ k : Fin k0_t1_loop.trips, k.val = 0 → ¬ k0_cond4 k = 1#1 := by decide
theorem c3_not : ∀ k : Fin k0_t1_loop.trips, k.val = 7 → ¬ k0_cond3 k = 1#1 := by decide
theorem c5_not : ∀ k : Fin k0_t1_loop.trips, k.val = 7 → ¬ k0_cond5 k = 1#1 := by decide
theorem c6_not : ∀ k : Fin k0_t1_loop.trips, k.val = 7 → ¬ k0_cond6 k = 1#1 := by decide

abbrev dlv (d : Dev nD) (L : grid0.Coords) (dst : Memref sig .scVector .vmem S4x1024 .f32) (g : Buf (Elt F) (dst.view.loc (thr d L)))
    (src : Memref sig .scVector .hbm S4x1024 .f32) (fs : Buf (Elt F) (src.view.loc (thr d L))) (qs : PosShare TreeShare) : sProp 𝕄 :=
  iprop((dst.view.loc (thr d L) ↦[dst.view.set]{fullShare} dst.view.writes (Elt F) g [⟨Rect.whole S4x1024, ReadAs.same.apply (src.view.read (Elt F) fs)⟩])
    ∗ (src.view.loc (thr d L) ↦[src.view.set]{qs} fs))

def loadFlight (d : Dev nD) (L : grid0.Coords) (sem : DmaSem sig) (ps xs0 xs1 xs2 xs3 : Memref sig .scVector .vmem S4x1024 .f32)
    (P X0 X1 X2 X3 : Memref sig .scVector .hbm S4x1024 .f32) (q : PosShare TreeShare)
    (fp : Buf (Elt F) (P.view.loc (thr d L))) (fx0 : Buf (Elt F) (X0.view.loc (thr d L))) (fx1 : Buf (Elt F) (X1.view.loc (thr d L))) (fx2 : Buf (Elt F) (X2.view.loc (thr d L))) (fx3 : Buf (Elt F) (X3.view.loc (thr d L)))
    (gp : Buf (Elt F) (ps.view.loc (thr d L))) (g0 : Buf (Elt F) (xs0.view.loc (thr d L))) (g1 : Buf (Elt F) (xs1.view.loc (thr d L))) (g2 : Buf (Elt F) (xs2.view.loc (thr d L))) (g3 : Buf (Elt F) (xs3.view.loc (thr d L))) : sProp 𝕄 :=
  Transfers.Batched countersEmb (thr d L) (SemLoc.dma sem) default 131072 5
        [dlv d L ps gp P fp q, dlv d L xs0 g0 X0 fx0 q, dlv d L xs1 g1 X1 fx1 q, dlv d L xs2 g2 X2 fx2 q, dlv d L xs3 g3 X3 fx3 q] 0

def storeFlight0 (d : Dev nD) (L : grid0.Coords) (o0 o1 o2 o3 : Memref sig .scVector .hbm S4x1024 .f32)
    (g0 : Buf (Elt F) (o0.view.loc (thr d L))) (g1 : Buf (Elt F) (o1.view.loc (thr d L))) (g2 : Buf (Elt F) (o2.view.loc (thr d L))) (g3 : Buf (Elt F) (o3.view.loc (thr d L)))
    (fs : Buf (Elt F) (sB.view.loc (thr d L))) : sProp 𝕄 :=
  Transfers.Batched countersEmb (thr d L) (SemLoc.dma cc0_scratch7.sem) default 131072 4
    [iprop((o0.view.loc (thr d L) ↦[o0.view.set]{fullShare} o0.view.writes (Elt F) g0 [⟨Rect.whole S4x1024, ReadAs.same.apply (sS00.view.read (Elt F) fs)⟩]) ∗ (sS00.view.loc (thr d L) ↦[sS00.view.set]{fullShare} fs)),
     iprop((o1.view.loc (thr d L) ↦[o1.view.set]{fullShare} o1.view.writes (Elt F) g1 [⟨Rect.whole S4x1024, ReadAs.same.apply (sS01.view.read (Elt F) fs)⟩]) ∗ (sS01.view.loc (thr d L) ↦[sS01.view.set]{fullShare} fs)),
     iprop((o2.view.loc (thr d L) ↦[o2.view.set]{fullShare} o2.view.writes (Elt F) g2 [⟨Rect.whole S4x1024, ReadAs.same.apply (sS02.view.read (Elt F) fs)⟩]) ∗ (sS02.view.loc (thr d L) ↦[sS02.view.set]{fullShare} fs)),
     iprop((o3.view.loc (thr d L) ↦[o3.view.set]{fullShare} o3.view.writes (Elt F) g3 [⟨Rect.whole S4x1024, ReadAs.same.apply (sS03.view.read (Elt F) fs)⟩]) ∗ (sS03.view.loc (thr d L) ↦[sS03.view.set]{fullShare} fs))] 0

def storeFlight1 (d : Dev nD) (L : grid0.Coords) (o0 o1 o2 o3 : Memref sig .scVector .hbm S4x1024 .f32)
    (g0 : Buf (Elt F) (o0.view.loc (thr d L))) (g1 : Buf (Elt F) (o1.view.loc (thr d L))) (g2 : Buf (Elt F) (o2.view.loc (thr d L))) (g3 : Buf (Elt F) (o3.view.loc (thr d L)))
    (fs : Buf (Elt F) (sB.view.loc (thr d L))) : sProp 𝕄 :=
  Transfers.Batched countersEmb (thr d L) (SemLoc.dma cc0_scratch8.sem) default 131072 4
    [iprop((o0.view.loc (thr d L) ↦[o0.view.set]{fullShare} o0.view.writes (Elt F) g0 [⟨Rect.whole S4x1024, ReadAs.same.apply (sS10.view.read (Elt F) fs)⟩]) ∗ (sS10.view.loc (thr d L) ↦[sS10.view.set]{fullShare} fs)),
     iprop((o1.view.loc (thr d L) ↦[o1.view.set]{fullShare} o1.view.writes (Elt F) g1 [⟨Rect.whole S4x1024, ReadAs.same.apply (sS11.view.read (Elt F) fs)⟩]) ∗ (sS11.view.loc (thr d L) ↦[sS11.view.set]{fullShare} fs)),
     iprop((o2.view.loc (thr d L) ↦[o2.view.set]{fullShare} o2.view.writes (Elt F) g2 [⟨Rect.whole S4x1024, ReadAs.same.apply (sS12.view.read (Elt F) fs)⟩]) ∗ (sS12.view.loc (thr d L) ↦[sS12.view.set]{fullShare} fs)),
     iprop((o3.view.loc (thr d L) ↦[o3.view.set]{fullShare} o3.view.writes (Elt F) g3 [⟨Rect.whole S4x1024, ReadAs.same.apply (sS13.view.read (Elt F) fs)⟩]) ∗ (sS13.view.loc (thr d L) ↦[sS13.view.set]{fullShare} fs))] 0

set_option maxHeartbeats 16000000 in
set_option maxRecDepth 65536 in
theorem tripMid (d : Dev nD) (L : grid0.Coords) (q : PosShare TreeShare) (O : CellTallies nD τ sig (HIx 1)) (W : Waits sig (HIx 1)) (v2 : BitVec 32)
    (k : Fin k0_t1_loop.trips) (hk1 : 1 ≤ k.val) (hk6 : k.val < 7)
    (iP0 iX00 iX01 iX02 iX03 iP1 iX10 iX11 iX12 iX13 iP2 iX20 iX21 iX22 iX23 iO00 iO01 iO02 iO03 iO10 iO11 iO12 iO13 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L))) (go00 : Buf (Elt F) (iO00.view.loc (thr d L))) (go01 : Buf (Elt F) (iO01.view.loc (thr d L))) (go02 : Buf (Elt F) (iO02.view.loc (thr d L))) (go03 : Buf (Elt F) (iO03.view.loc (thr d L))) (go10 : Buf (Elt F) (iO10.view.loc (thr d L))) (go11 : Buf (Elt F) (iO11.view.loc (thr d L))) (go12 : Buf (Elt F) (iO12.view.loc (thr d L))) (go13 : Buf (Elt F) (iO13.view.loc (thr d L)))
    (fx : Buf (Elt F) (xLoc d)) (fp : Buf (Elt F) (pLoc d)) (fo : Buf (Elt F) (oLoc d))
    (fsa fsb : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    let h3 := c3_of k hk6
    let h5 := c5_of k hk6
    let h6 := c6_of k hk6
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ storeFlight0 (F := F) d L iO00 iO01 iO02 iO03 go00 go01 go02 go03 fsa
        ∗ storeFlight1 (F := F) d L iO10 iO11 iO12 iO13 go10 go11 go12 go13 fsb
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((pWinOf (k0_off600 L k) (k0_off600_inb L k h3)).view.loc (thr d L) ↦[(pWinOf (k0_off600 L k) (k0_off600_inb L k h3)).view.set]{q} fp)
        ∗ ((xWinOf (k0_off601 L k) (k0_off601_inb L k h3)).view.loc (thr d L) ↦[(xWinOf (k0_off601 L k) (k0_off601_inb L k h3)).view.set]{q} fx)
        ∗ ((xWinOf (k0_off602 L k) (k0_off602_inb L k h3)).view.loc (thr d L) ↦[(xWinOf (k0_off602 L k) (k0_off602_inb L k h3)).view.set]{q} fx)
        ∗ ((xWinOf (k0_off603 L k) (k0_off603_inb L k h3)).view.loc (thr d L) ↦[(xWinOf (k0_off603 L k) (k0_off603_inb L k h3)).view.set]{q} fx)
        ∗ ((xWinOf (k0_off604 L k) (k0_off604_inb L k h3)).view.loc (thr d L) ↦[(xWinOf (k0_off604 L k) (k0_off604_inb L k h3)).view.set]{q} fx)
        ∗ ((pWinOf (k0_off1185 L k) (k0_off1185_inb L k h5)).view.loc (thr d L) ↦[(pWinOf (k0_off1185 L k) (k0_off1185_inb L k h5)).view.set]{q} fp)
        ∗ ((xWinOf (k0_off1186 L k) (k0_off1186_inb L k h5)).view.loc (thr d L) ↦[(xWinOf (k0_off1186 L k) (k0_off1186_inb L k h5)).view.set]{q} fx)
        ∗ ((xWinOf (k0_off1187 L k) (k0_off1187_inb L k h5)).view.loc (thr d L) ↦[(xWinOf (k0_off1187 L k) (k0_off1187_inb L k h5)).view.set]{q} fx)
        ∗ ((xWinOf (k0_off1188 L k) (k0_off1188_inb L k h5)).view.loc (thr d L) ↦[(xWinOf (k0_off1188 L k) (k0_off1188_inb L k h5)).view.set]{q} fx)
        ∗ ((xWinOf (k0_off1189 L k) (k0_off1189_inb L k h5)).view.loc (thr d L) ↦[(xWinOf (k0_off1189 L k) (k0_off1189_inb L k h5)).view.set]{q} fx)
        ∗ ((pWinOf (k0_off1766 L k) (k0_off1766_inb L k h6)).view.loc (thr d L) ↦[(pWinOf (k0_off1766 L k) (k0_off1766_inb L k h6)).view.set]{q} fp)
        ∗ ((xWinOf (k0_off1767 L k) (k0_off1767_inb L k h6)).view.loc (thr d L) ↦[(xWinOf (k0_off1767 L k) (k0_off1767_inb L k h6)).view.set]{q} fx)
        ∗ ((xWinOf (k0_off1768 L k) (k0_off1768_inb L k h6)).view.loc (thr d L) ↦[(xWinOf (k0_off1768 L k) (k0_off1768_inb L k h6)).view.set]{q} fx)
        ∗ ((xWinOf (k0_off1769 L k) (k0_off1769_inb L k h6)).view.loc (thr d L) ↦[(xWinOf (k0_off1769 L k) (k0_off1769_inb L k h6)).view.set]{q} fx)
        ∗ ((xWinOf (k0_off1770 L k) (k0_off1770_inb L k h6)).view.loc (thr d L) ↦[(xWinOf (k0_off1770 L k) (k0_off1770_inb L k h6)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ gp g0 g1 g2 g3, loadFlight (F := F) d L cc0_scratch3.sem pS0 xS00 xS01 xS02 xS03 (pWinOf (k0_off600 L k) (k0_off600_inb L k h3)) (xWinOf (k0_off601 L k) (k0_off601_inb L k h3)) (xWinOf (k0_off602 L k) (k0_off602_inb L k h3)) (xWinOf (k0_off603 L k) (k0_off603_inb L k h3)) (xWinOf (k0_off604 L k) (k0_off604_inb L k h3)) q fp fx fx fx fx gp g0 g1 g2 g3)
            ∗ (∃ gp g0 g1 g2 g3, loadFlight (F := F) d L cc0_scratch4.sem pS1 xS10 xS11 xS12 xS13 (pWinOf (k0_off1185 L k) (k0_off1185_inb L k h5)) (xWinOf (k0_off1186 L k) (k0_off1186_inb L k h5)) (xWinOf (k0_off1187 L k) (k0_off1187_inb L k h5)) (xWinOf (k0_off1188 L k) (k0_off1188_inb L k h5)) (xWinOf (k0_off1189 L k) (k0_off1189_inb L k h5)) q fp fx fx fx fx gp g0 g1 g2 g3)
            ∗ (∃ gp g0 g1 g2 g3, loadFlight (F := F) d L cc0_scratch5.sem pS2 xS20 xS21 xS22 xS23 (pWinOf (k0_off1766 L k) (k0_off1766_inb L k h6)) (xWinOf (k0_off1767 L k) (k0_off1767_inb L k h6)) (xWinOf (k0_off1768 L k) (k0_off1768_inb L k h6)) (xWinOf (k0_off1769 L k) (k0_off1769_inb L k h6)) (xWinOf (k0_off1770 L k) (k0_off1770_inb L k h6)) q fp fx fx fx fx gp g0 g1 g2 g3)
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (iO00.view.loc (thr d L) ↦[iO00.view.set]{fullShare} lnd iO00 sS00 fsa) ∗ (iO01.view.loc (thr d L) ↦[iO01.view.set]{fullShare} lnd iO01 sS01 fsa) ∗ (iO02.view.loc (thr d L) ↦[iO02.view.set]{fullShare} lnd iO02 sS02 fsa) ∗ (iO03.view.loc (thr d L) ↦[iO03.view.set]{fullShare} lnd iO03 sS03 fsa)
            ∗ (iO10.view.loc (thr d L) ↦[iO10.view.set]{fullShare} lnd iO10 sS10 fsb) ∗ (iO11.view.loc (thr d L) ↦[iO11.view.set]{fullShare} lnd iO11 sS11 fsb) ∗ (iO12.view.loc (thr d L) ↦[iO12.view.set]{fullShare} lnd iO12 sS12 fsb) ∗ (iO13.view.loc (thr d L) ↦[iO13.view.set]{fullShare} lnd iO13 sS13 fsb)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1 h3 h5 h6
  have hk8 : k.val < 8 := Nat.lt_of_lt_of_le k.isLt k0_t1_abs.2.1
  have h2 := c2_of k hk1
  have h4 := c4_of k hk1
  unfold k0_t1_body loadFlight storeFlight0 storeFlight1 dlv pWinOf xWinOf oWinOf lnd
  iintro ⟨Hmw, HP3, HX30, HX31, HX32, HX33, HB0, HB1, HB2, HC0, HC1, HQ0, HY00, HY01, HY02, HY03, HQ1, HY10, HY11, HY12, HY13, HQ2, HY20, HY21, HY22, HY23, HQ3, HY30, HY31, HY32, HY33, HO00, HO01, HO02, HO03, HO10, HO11, HO12, HO13, HO20, HO21, HO22, HO23, HO30, HO31, HO32, HO33, Hs6, HO⟩
  sl_exec_parts
  ihave H2 : ((sB.view.loc (thr d L) ↦[(((Finset.univ \ sS10.view.set) \ sS11.view.set) \ sS12.view.set) \ sS13.view.set]{fullShare} _ : sProp 𝕄)) $$ [HC0_src0 HC0_src1 HC0_src2 HC0_src3]
  · rw [svb_half0 d (cV L) (jV L)]
    iframe
  sl_for (innerInv0 (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 H2]
  case region =>
    intro j acc
    exact inner0_region d L _ _ _ _ _ _ _ _ _ j acc
  · unfold innerInv0
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [H2]; · iexact H2
    ipureintro; intro b l j' hj; exact absurd hj (Nat.not_lt_zero _)
  iintro %_ HI
  unfold innerInv0
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_half0 (F := F) d (cV L) (jV L) fs0)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HC1_src0 HC1_src1 HC1_src2 HC1_src3]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HB0]; · iexists _, _, _, _, _; iexact HB0
  isplitl [HB1]; · iexists _, _, _, _, _; iexact HB1
  isplitl [HB2]; · iexists _, _, _, _, _; iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [HC0]
  · iexists _
    isplitl []
    · ipureintro; exact hv2
    · iexact HC0
  isplitl [HC1]
  · iexists _
    isplitl []
    · ipureintro; exact hv3
    · iexact HC1
  isplitl [HC0_dst0]; · iexact HC0_dst0
  isplitl [HC0_dst1]; · iexact HC0_dst1
  isplitl [HC0_dst2]; · iexact HC0_dst2
  isplitl [HC0_dst3]; · iexact HC0_dst3
  isplitl [HC1_dst0]; · iexact HC1_dst0
  isplitl [HC1_dst1]; · iexact HC1_dst1
  isplitl [HC1_dst2]; · iexact HC1_dst2
  isplitl [HC1_dst3]; · iexact HC1_dst3
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KI

end
-- ==== Proof.KInv.lean ====
import proofs.«210091_g81140522156176_cont_9to1_m_468_11_alg».proof.Proof.KTrip

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

theorem row_lt (c : ℕ) (hc : c < 32) (j : Fin 4) : r0 L + 4 * c + j.val < 4096 := by
  have := r0_le L; have := j.isLt; omega

def staged (s : Fin 2) (c : ℕ) (hc : c < 32) (fs : Buf (Elt F) (sB.view.loc (thr d L))) : Prop :=
  ∀ (b : Fin 4) (l : Fin 1024) (j : Fin 4),
    fs (ValueIdx.ix4 s b j l) = mres m d (ValueIdx.ix3 b ⟨r0 L + 4 * c + j.val, row_lt L c hc j⟩ l)

def freeSlot0 : sProp 𝕄 :=
  iprop((∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
    ∗ (∃ g, xS02.view.loc (thr d L) ↦[xS02.view.set]{fullShare} g) ∗ (∃ g, xS03.view.loc (thr d L) ↦[xS03.view.set]{fullShare} g)
    ∗ semVal (thr d L, SemLoc.dma cc0_scratch3.sem) 0)

def freeSlot1 : sProp 𝕄 :=
  iprop((∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
    ∗ (∃ g, xS12.view.loc (thr d L) ↦[xS12.view.set]{fullShare} g) ∗ (∃ g, xS13.view.loc (thr d L) ↦[xS13.view.set]{fullShare} g)
    ∗ semVal (thr d L, SemLoc.dma cc0_scratch4.sem) 0)

def freeSlot2 : sProp 𝕄 :=
  iprop((∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
    ∗ (∃ g, xS22.view.loc (thr d L) ↦[xS22.view.set]{fullShare} g) ∗ (∃ g, xS23.view.loc (thr d L) ↦[xS23.view.set]{fullShare} g)
    ∗ semVal (thr d L, SemLoc.dma cc0_scratch5.sem) 0)

def freeSlot3 : sProp 𝕄 :=
  iprop((∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
    ∗ (∃ g, xS32.view.loc (thr d L) ↦[xS32.view.set]{fullShare} g) ∗ (∃ g, xS33.view.loc (thr d L) ↦[xS33.view.set]{fullShare} g)
    ∗ semVal (thr d L, SemLoc.dma cc0_scratch6.sem) 0)

def flightIn0 (c : ℕ) (hc : c < 32) : sProp 𝕄 :=
  iprop(∃ gp g0 g1 g2 g3, loadFlight (F := F) d L cc0_scratch3.sem pS0 xS00 xS01 xS02 xS03
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightIn1 (c : ℕ) (hc : c < 32) : sProp 𝕄 :=
  iprop(∃ gp g0 g1 g2 g3, loadFlight (F := F) d L cc0_scratch4.sem pS1 xS10 xS11 xS12 xS13
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightIn2 (c : ℕ) (hc : c < 32) : sProp 𝕄 :=
  iprop(∃ gp g0 g1 g2 g3, loadFlight (F := F) d L cc0_scratch5.sem pS2 xS20 xS21 xS22 xS23
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightOut0 (c : ℕ) (hc : c < 32) : sProp 𝕄 :=
  iprop(∃ fs, ⌜staged m d L 0 c hc fs⌝ ∗ storeFlight0 (F := F) d L (OW L c 0 hc (by decide)) (OW L c 1 hc (by decide)) (OW L c 2 hc (by decide)) (OW L c 3 hc (by decide))
    (m (oLoc d)) (m (oLoc d)) (m (oLoc d)) (m (oLoc d)) fs)

def flightOut1 (c : ℕ) (hc : c < 32) : sProp 𝕄 :=
  iprop(∃ fs, ⌜staged m d L 1 c hc fs⌝ ∗ storeFlight1 (F := F) d L (OW L c 0 hc (by decide)) (OW L c 1 hc (by decide)) (OW L c 2 hc (by decide)) (OW L c 3 hc (by decide))
    (m (oLoc d)) (m (oLoc d)) (m (oLoc d)) (m (oLoc d)) fs)

def loadPart (g : ℕ) : sProp 𝕄 :=
  if h : g < 8 then iprop(flightIn0 m d L (4 * g) (by omega) ∗ flightIn1 m d L (4 * g + 1) (by omega) ∗ flightIn2 m d L (4 * g + 2) (by omega) ∗ freeSlot3 d L)
  else iprop(freeSlot0 d L ∗ freeSlot1 d L ∗ freeSlot2 d L ∗ freeSlot3 d L)

def storePart (g : ℕ) : sProp 𝕄 :=
  if h : g = 0 then iprop(semVal (thr d L, SemLoc.dma cc0_scratch7.sem) 0 ∗ semVal (thr d L, SemLoc.dma cc0_scratch8.sem) 0 ∗ ∃ f, sB.view.loc (thr d L) ↦{fullShare} f)
  else if h8 : g ≤ 8 then iprop(flightOut0 m d L (4 * g - 2) (by omega) ∗ flightOut1 m d L (4 * g - 1) (by omega))
  else iprop(emp)

def Inv (O : CellTallies nD τ sig (HIx 1)) (W : Waits sig (HIx 1)) (g : ℕ) (_ : PUnit) : sProp 𝕄 :=
  iprop(Transfers.MayWaits (thr d L) (none : HIx 1) O
    ∗ (∃ W', ⌜∀ p ∈ W', p ∈ W ∨ p.2 = none⌝ ∗ owes (thr d L) O W')
    ∗ loadPart m d L g ∗ srcFrom d L (mp m d) (m (xLoc d)) (4 * g + 3)
    ∗ storePart m d L g ∗ outFrom d L (m (oLoc d)) (4 * g) ∗ outBelow d L (mres m d) (4 * g - 2))

end Cert.Proof.KI

end
-- ==== Proof.KGlue.lean ====
import proofs.«210091_g81140522156176_cont_9to1_m_468_11_alg».proof.Proof.KInv

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

theorem win_row_lt (L : grid0.Coords) (c : ℕ) (hc : c < 32) (j : Fin 4) : r0 L + 4 * c + j.val < 4096 := by
  have := r0_le L; have := j.isLt; omega

theorem XW_read (L : grid0.Coords) (c b : ℕ) (hc : c < 32) (hb : b < 4) (X : S4x4096x1024.Idx → F .f32) (j : Fin 4) (l : Fin 1024) :
    (XW L c b hc hb).view.read (Elt F) X (ix2 j l) = X (ix3 (⟨b, hb⟩ : Fin 4) (⟨r0 L + 4 * c + j.val, win_row_lt L c hc j⟩ : Fin 4096) l) := by
  show (((xV : Memref sig .scVector .hbm S4x4096x1024 .f32).slice (Rect.unit (s := S4x4096x1024) ![b, r0 L + 4 * c, 0] S1x4x1024.size (XW_inb L c b hc hb)) (fun _ => rfl)).squeeze S4x1024
      squeezes_S1x4x1024_S4x1024).view.read (Elt F) X (ix2 j l) = _
  rw [Memref.read_squeeze_slice (Val := Elt F) (xV : Memref sig .scVector .hbm S4x4096x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show b + 1 * 0 = b; omega
    | ⟨1, _⟩ => show r0 L + 4 * c + 1 * j.val = r0 L + 4 * c + j.val; omega
    | ⟨2, _⟩ => show 0 + 1 * l.val = l.val; omega
theorem OW_read (L : grid0.Coords) (c b : ℕ) (hc : c < 32) (hb : b < 4) (X : S4x4096x1024.Idx → F .f32) (j : Fin 4) (l : Fin 1024) :
    (OW L c b hc hb).view.read (Elt F) X (ix2 j l) = X (ix3 (⟨b, hb⟩ : Fin 4) (⟨r0 L + 4 * c + j.val, win_row_lt L c hc j⟩ : Fin 4096) l) := by
  show (((oV : Memref sig .scVector .hbm S4x4096x1024 .f32).slice (Rect.unit (s := S4x4096x1024) ![b, r0 L + 4 * c, 0] S1x4x1024.size (XW_inb L c b hc hb)) (fun _ => rfl)).squeeze S4x1024
      squeezes_S1x4x1024_S4x1024).view.read (Elt F) X (ix2 j l) = _
  rw [Memref.read_squeeze_slice (Val := Elt F) (oV : Memref sig .scVector .hbm S4x4096x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show b + 1 * 0 = b; omega
    | ⟨1, _⟩ => show r0 L + 4 * c + 1 * j.val = r0 L + 4 * c + j.val; omega
    | ⟨2, _⟩ => show 0 + 1 * l.val = l.val; omega

theorem PW_read (L : grid0.Coords) (c : ℕ) (hc : c < 32) (X : S4096x1024.Idx → F .f32) (j : Fin 4) (l : Fin 1024) :
    (PW L c hc).view.read (Elt F) X (ix2 j l) = X (ix2 (⟨r0 L + 4 * c + j.val, win_row_lt L c hc j⟩ : Fin 4096) l) := by
  rw [View.read_apply]
  refine (cast_eq _ _).trans ?_
  refine congrArg X (funext fun a => Fin.ext ?_)
  match a with
  | ⟨0, _⟩ => show r0 L + 4 * c + 1 * j.val = r0 L + 4 * c + j.val; omega
  | ⟨1, _⟩ => show 0 + 1 * l.val = l.val; omega

theorem sslot_read (mb : Fin 2 × Fin 4) (inb : ∀ a, (![mb.1.val, mb.2.val, 0, 0] : Fin 4 → Nat) a + S1x1x4x1024.size a ≤ S2x4x4x1024.size a)
    (X : S2x4x4x1024.Idx → F .f32) (j : Fin 4) (l : Fin 1024) :
    (((sB : Memref sig .scVector .vmem S2x4x4x1024 .f32).slice (Rect.unit (s := S2x4x4x1024) ![mb.1.val, mb.2.val, 0, 0] S1x1x4x1024.size inb) (fun _ => rfl)).squeeze S4x1024
        squeezes_S1x1x4x1024_S4x1024).view.read (Elt F) X (ix2 j l)
      = X (ix4 mb.1 mb.2 j l) := by
  rw [Memref.read_squeeze_slice (Val := Elt F) (sB : Memref sig .scVector .vmem S2x4x4x1024 .f32) _ (fun _ => rfl) squeezes_S1x1x4x1024_S4x1024
    squeezes_S1x1x4x1024_S4x1024.numel_eq X]
  refine (shapeCast_apply _ _ (ix2 j l) (ix4 (0 : Fin 1) (0 : Fin 1) j l) ?_).trans ?_
  · rw [Shape.rowMajor_val_four, Shape.rowMajor_val_two]
    show (((0 : Nat) * 1 + 0) * 4 + j.val) * 1024 + l.val = j.val * 1024 + l.val
    omega
  · show X _ = X _
    refine congrArg X (funext fun a => Fin.ext ?_)
    match a with
    | ⟨0, _⟩ => show mb.1.val + 1 * 0 = mb.1.val; omega
    | ⟨1, _⟩ => show mb.2.val + 1 * 0 = mb.2.val; omega
    | ⟨2, _⟩ => show 0 + 1 * j.val = j.val; omega
    | ⟨3, _⟩ => show 0 + 1 * l.val = l.val; omega

theorem off_pro_p (L : grid0.Coords) (j : Fin 3) : k0_off1 L (BitVec.ofNat 32 (4 * j.val)) = ![r0 L + 4 * j.val, 0] := k0_off1_eq L j
theorem off_pro_x0 (L : grid0.Coords) (j : Fin 3) : k0_off2 L (BitVec.ofNat 32 (4 * j.val)) = ![0, r0 L + 4 * j.val, 0] := k0_off2_eq L j
theorem off_pro_x1 (L : grid0.Coords) (j : Fin 3) : k0_off3 L (BitVec.ofNat 32 (4 * j.val)) = ![1, r0 L + 4 * j.val, 0] := k0_off3_eq L j
theorem off_pro_x2 (L : grid0.Coords) (j : Fin 3) : k0_off4 L (BitVec.ofNat 32 (4 * j.val)) = ![2, r0 L + 4 * j.val, 0] := k0_off4_eq L j
theorem off_pro_x3 (L : grid0.Coords) (j : Fin 3) : k0_off5 L (BitVec.ofNat 32 (4 * j.val)) = ![3, r0 L + 4 * j.val, 0] := k0_off5_eq L j
theorem off_s0_p (L : grid0.Coords) (k : Fin k0_t1_loop.trips) : k0_off11 L k = ![r0 L + 4 * (4 * k.val + 3), 0] :=
  (k0_off11_eq L k).trans (vec2_congr (by rw [r0_def]; omega))
theorem off_s0_x0 (L : grid0.Coords) (k : Fin k0_t1_loop.trips) : k0_off12 L k = ![0, r0 L + 4 * (4 * k.val + 3), 0] :=
  (k0_off12_eq L k).trans (vec3_congr 0 (by rw [r0_def]; omega))
theorem off_s0_x1 (L : grid0.Coords) (k : Fin k0_t1_loop.trips) : k0_off13 L k = ![1, r0 L + 4 * (4 * k.val + 3), 0] :=
  (k0_off13_eq L k).trans (vec3_congr 1 (by rw [r0_def]; omega))
theorem off_s0_x2 (L : grid0.Coords) (k : Fin k0_t1_loop.trips) : k0_off14 L k = ![2, r0 L + 4 * (4 * k.val + 3), 0] :=
  (k0_off14_eq L k).trans (vec3_congr 2 (by rw [r0_def]; omega))
theorem off_s0_x3 (L : grid0.Coords) (k : Fin k0_t1_loop.trips) : k0_off15 L k = ![3, r0 L + 4 * (4 * k.val + 3), 0] :=
  (k0_off15_eq L k).trans (vec3_congr 3 (by rw [r0_def]; omega))
theorem off_s1_p (L : grid0.Coords) (k : Fin k0_t1_loop.trips) : k0_off600 L k = ![r0 L + 4 * (4 * k.val + 4), 0] :=
  (k0_off600_eq L k).trans (vec2_congr (by rw [r0_def]; omega))
theorem off_s1_x0 (L : grid0.Coords) (k : Fin k0_t1_loop.trips) : k0_off601 L k = ![0, r0 L + 4 * (4 * k.val + 4), 0] :=
  (k0_off601_eq L k).trans (vec3_congr 0 (by rw [r0_def]; omega))
theorem off_s1_x1 (L : grid0.Coords) (k : Fin k0_t1_loop.trips) : k0_off602 L k = ![1, r0 L + 4 * (4 * k.val + 4), 0] :=
  (k0_off602_eq L k).trans (vec3_congr 1 (by rw [r0_def]; omega))
theorem off_s1_x2 (L : grid0.Coords) (k : Fin k0_t1_loop.trips) : k0_off603 L k = ![2, r0 L + 4 * (4 * k.val + 4), 0] :=
  (k0_off603_eq L k).trans (vec3_congr 2 (by rw [r0_def]; omega))
theorem off_s1_x3 (L : grid0.Coords) (k : Fin k0_t1_loop.trips) : k0_off604 L k = ![3, r0 L + 4 * (4 * k.val + 4), 0] :=
  (k0_off604_eq L k).trans (vec3_congr 3 (by rw [r0_def]; omega))
theorem off_s2_p (L : grid0.Coords) (k : Fin k0_t1_loop.trips) : k0_off1185 L k = ![r0 L + 4 * (4 * k.val + 5), 0] :=
  (k0_off1185_eq L k).trans (vec2_congr (by rw [r0_def]; omega))
theorem off_s2_x0 (L : grid0.Coords) (k : Fin k0_t1_loop.trips) : k0_off1186 L k = ![0, r0 L + 4 * (4 * k.val + 5), 0] :=
  (k0_off1186_eq L k).trans (vec3_congr 0 (by rw [r0_def]; omega))
theorem off_s2_x1 (L : grid0.Coords) (k : Fin k0_t1_loop.trips) : k0_off1187 L k = ![1, r0 L + 4 * (4 * k.val + 5), 0] :=
  (k0_off1187_eq L k).trans (vec3_congr 1 (by rw [r0_def]; omega))
theorem off_s2_x2 (L : grid0.Coords) (k : Fin k0_t1_loop.trips) : k0_off1188 L k = ![2, r0 L + 4 * (4 * k.val + 5), 0] :=
  (k0_off1188_eq L k).trans (vec3_congr 2 (by rw [r0_def]; omega))
theorem off_s2_x3 (L : grid0.Coords) (k : Fin k0_t1_loop.trips) : k0_off1189 L k = ![3, r0 L + 4 * (4 * k.val + 5), 0] :=
  (k0_off1189_eq L k).trans (vec3_congr 3 (by rw [r0_def]; omega))
theorem off_s3_p (L : grid0.Coords) (k : Fin k0_t1_loop.trips) : k0_off1766 L k = ![r0 L + 4 * (4 * k.val + 6), 0] :=
  (k0_off1766_eq L k).trans (vec2_congr (by rw [r0_def]; omega))
theorem off_s3_x0 (L : grid0.Coords) (k : Fin k0_t1_loop.trips) : k0_off1767 L k = ![0, r0 L + 4 * (4 * k.val + 6), 0] :=
  (k0_off1767_eq L k).trans (vec3_congr 0 (by rw [r0_def]; omega))
theorem off_s3_x1 (L : grid0.Coords) (k : Fin k0_t1_loop.trips) : k0_off1768 L k = ![1, r0 L + 4 * (4 * k.val + 6), 0] :=
  (k0_off1768_eq L k).trans (vec3_congr 1 (by rw [r0_def]; omega))
theorem off_s3_x2 (L : grid0.Coords) (k : Fin k0_t1_loop.trips) : k0_off1769 L k = ![2, r0 L + 4 * (4 * k.val + 6), 0] :=
  (k0_off1769_eq L k).trans (vec3_congr 2 (by rw [r0_def]; omega))
theorem off_s3_x3 (L : grid0.Coords) (k : Fin k0_t1_loop.trips) : k0_off1770 L k = ![3, r0 L + 4 * (4 * k.val + 6), 0] :=
  (k0_off1770_eq L k).trans (vec3_congr 3 (by rw [r0_def]; omega))
theorem off_st0 (L : grid0.Coords) (k : Fin k0_t1_loop.trips) (s : Fin 4) : k0_off596 L k (BitVec.ofNat 32 s.val) = ![0, r0 L + 4 * (4 * k.val + s.val), 0] :=
  (k0_off596_eq L k s).trans (vec3_congr 0 (by rw [r0_def]; omega))
theorem off_st1 (L : grid0.Coords) (k : Fin k0_t1_loop.trips) (s : Fin 4) : k0_off597 L k (BitVec.ofNat 32 s.val) = ![1, r0 L + 4 * (4 * k.val + s.val), 0] :=
  (k0_off597_eq L k s).trans (vec3_congr 1 (by rw [r0_def]; omega))
theorem off_st2 (L : grid0.Coords) (k : Fin k0_t1_loop.trips) (s : Fin 4) : k0_off598 L k (BitVec.ofNat 32 s.val) = ![2, r0 L + 4 * (4 * k.val + s.val), 0] :=
  (k0_off598_eq L k s).trans (vec3_congr 2 (by rw [r0_def]; omega))
theorem off_st3 (L : grid0.Coords) (k : Fin k0_t1_loop.trips) (s : Fin 4) : k0_off599 L k (BitVec.ofNat 32 s.val) = ![3, r0 L + 4 * (4 * k.val + s.val), 0] :=
  (k0_off599_eq L k s).trans (vec3_congr 3 (by rw [r0_def]; omega))

section Congr
variable (d : Dev nD) (L : grid0.Coords)

theorem pWin_pts {o o' : Fin 2 → Nat} (e : o = o') (h : ∀ a, o a + S4x1024.size a ≤ S4096x1024.size a) (h' : ∀ a, o' a + S4x1024.size a ≤ S4096x1024.size a)
    (q : PosShare TreeShare) (f : Buf (Elt F) (pLoc d)) :
    (((pWinOf o h).view.loc (thr d L) ↦[(pWinOf o h).view.set]{q} f) : sProp 𝕄) = ((pWinOf o' h').view.loc (thr d L) ↦[(pWinOf o' h').view.set]{q} f) := by subst e; rfl
theorem xWin_pts {o o' : Fin 3 → Nat} (e : o = o') (h : ∀ a, o a + S1x4x1024.size a ≤ S4x4096x1024.size a) (h' : ∀ a, o' a + S1x4x1024.size a ≤ S4x4096x1024.size a)
    (q : PosShare TreeShare) (f : Buf (Elt F) (xLoc d)) :
    (((xWinOf o h).view.loc (thr d L) ↦[(xWinOf o h).view.set]{q} f) : sProp 𝕄) = ((xWinOf o' h').view.loc (thr d L) ↦[(xWinOf o' h').view.set]{q} f) := by subst e; rfl
theorem oWin_pts {o o' : Fin 3 → Nat} (e : o = o') (h : ∀ a, o a + S1x4x1024.size a ≤ S4x4096x1024.size a) (h' : ∀ a, o' a + S1x4x1024.size a ≤ S4x4096x1024.size a)
    (q : PosShare TreeShare) (f : Buf (Elt F) (oLoc d)) :
    (((oWinOf o h).view.loc (thr d L) ↦[(oWinOf o h).view.set]{q} f) : sProp 𝕄) = ((oWinOf o' h').view.loc (thr d L) ↦[(oWinOf o' h').view.set]{q} f) := by subst e; rfl

theorem loadFlight_congr (sem : DmaSem sig) (ps xs0 xs1 xs2 xs3 : Memref sig .scVector .vmem S4x1024 .f32)
    {op op' : Fin 2 → Nat} {o0 o0' o1 o1' o2 o2' o3 o3' : Fin 3 → Nat} (ep : op = op') (e0 : o0 = o0') (e1 : o1 = o1') (e2 : o2 = o2') (e3 : o3 = o3')
    (hp : ∀ a, op a + S4x1024.size a ≤ S4096x1024.size a) (hp' : ∀ a, op' a + S4x1024.size a ≤ S4096x1024.size a)
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (q : PosShare TreeShare) (fp : Buf (Elt F) (pLoc d)) (fx0 fx1 fx2 fx3 : Buf (Elt F) (xLoc d))
    (gp : Buf (Elt F) (ps.view.loc (thr d L))) (g0 : Buf (Elt F) (xs0.view.loc (thr d L))) (g1 : Buf (Elt F) (xs1.view.loc (thr d L)))
    (g2 : Buf (Elt F) (xs2.view.loc (thr d L))) (g3 : Buf (Elt F) (xs3.view.loc (thr d L))) :
    loadFlight (F := F) d L sem ps xs0 xs1 xs2 xs3 (pWinOf op hp) (xWinOf o0 h0) (xWinOf o1 h1) (xWinOf o2 h2) (xWinOf o3 h3) q fp fx0 fx1 fx2 fx3 gp g0 g1 g2 g3
      = loadFlight (F := F) d L sem ps xs0 xs1 xs2 xs3 (pWinOf op' hp') (xWinOf o0' h0') (xWinOf o1' h1') (xWinOf o2' h2') (xWinOf o3' h3') q fp fx0 fx1 fx2 fx3 gp g0 g1 g2 g3 := by
  subst ep e0 e1 e2 e3; rfl

theorem storeFlight0_congr {o0 o0' o1 o1' o2 o2' o3 o3' : Fin 3 → Nat} (e0 : o0 = o0') (e1 : o1 = o1') (e2 : o2 = o2') (e3 : o3 = o3')
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (g0 g1 g2 g3 : Buf (Elt F) (oLoc d)) (fs : Buf (Elt F) (sB.view.loc (thr d L))) :
    storeFlight0 (F := F) d L (oWinOf o0 h0) (oWinOf o1 h1) (oWinOf o2 h2) (oWinOf o3 h3) g0 g1 g2 g3 fs
      = storeFlight0 (F := F) d L (oWinOf o0' h0') (oWinOf o1' h1') (oWinOf o2' h2') (oWinOf o3' h3') g0 g1 g2 g3 fs := by
  subst e0 e1 e2 e3; rfl
theorem storeFlight1_congr {o0 o0' o1 o1' o2 o2' o3 o3' : Fin 3 → Nat} (e0 : o0 = o0') (e1 : o1 = o1') (e2 : o2 = o2') (e3 : o3 = o3')
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (g0 g1 g2 g3 : Buf (Elt F) (oLoc d)) (fs : Buf (Elt F) (sB.view.loc (thr d L))) :
    storeFlight1 (F := F) d L (oWinOf o0 h0) (oWinOf o1 h1) (oWinOf o2 h2) (oWinOf o3 h3) g0 g1 g2 g3 fs
      = storeFlight1 (F := F) d L (oWinOf o0' h0') (oWinOf o1' h1') (oWinOf o2' h2') (oWinOf o3' h3') g0 g1 g2 g3 fs := by
  subst e0 e1 e2 e3; rfl

theorem ex_congr {α : Type} {Φ Ψ : α → sProp 𝕄} (h : ∀ a, Φ a = Ψ a) : (iprop(∃ a, Φ a) : sProp 𝕄) = iprop(∃ a, Ψ a) := by
  have e : Φ = Ψ := funext h
  rw [e]
end Congr

section Pro
variable (d : Dev nD) (L : grid0.Coords)

theorem srcChunk_pro (fp : Buf (Elt F) (pLoc d)) (fx : Buf (Elt F) (xLoc d)) (j : Fin 3) :
    srcChunk d L fp fx j.val (by have := j.isLt; omega)
      = iprop(((pWinOf (k0_off1 L (BitVec.ofNat 32 (4 * j.val))) (k0_off1_inb L j)).view.loc (thr d L) ↦[(pWinOf (k0_off1 L (BitVec.ofNat 32 (4 * j.val))) (k0_off1_inb L j)).view.set]{rsh} fp)
        ∗ ((xWinOf (k0_off2 L (BitVec.ofNat 32 (4 * j.val))) (k0_off2_inb L j)).view.loc (thr d L) ↦[(xWinOf (k0_off2 L (BitVec.ofNat 32 (4 * j.val))) (k0_off2_inb L j)).view.set]{rsh} fx)
        ∗ ((xWinOf (k0_off3 L (BitVec.ofNat 32 (4 * j.val))) (k0_off3_inb L j)).view.loc (thr d L) ↦[(xWinOf (k0_off3 L (BitVec.ofNat 32 (4 * j.val))) (k0_off3_inb L j)).view.set]{rsh} fx)
        ∗ ((xWinOf (k0_off4 L (BitVec.ofNat 32 (4 * j.val))) (k0_off4_inb L j)).view.loc (thr d L) ↦[(xWinOf (k0_off4 L (BitVec.ofNat 32 (4 * j.val))) (k0_off4_inb L j)).view.set]{rsh} fx)
        ∗ ((xWinOf (k0_off5 L (BitVec.ofNat 32 (4 * j.val))) (k0_off5_inb L j)).view.loc (thr d L) ↦[(xWinOf (k0_off5 L (BitVec.ofNat 32 (4 * j.val))) (k0_off5_inb L j)).view.set]{rsh} fx)) := by
  unfold srcChunk
  exact sep_congr' (pWin_pts d L (off_pro_p L j) _ _ rsh fp).symm (sep_congr' (xWin_pts d L (off_pro_x0 L j) _ _ rsh fx).symm
    (sep_congr' (xWin_pts d L (off_pro_x1 L j) _ _ rsh fx).symm (sep_congr' (xWin_pts d L (off_pro_x2 L j) _ _ rsh fx).symm
      (xWin_pts d L (off_pro_x3 L j) _ _ rsh fx).symm)))

theorem srcChunk_pro0 (fp : Buf (Elt F) (pLoc d)) (fx : Buf (Elt F) (xLoc d)) :
    srcChunk d L fp fx 0 (by decide)
      = iprop(((pWinOf (k0_off1 L 0#32) (k0_off1_inb L 0)).view.loc (thr d L) ↦[(pWinOf (k0_off1 L 0#32) (k0_off1_inb L 0)).view.set]{rsh} fp)
        ∗ ((xWinOf (k0_off2 L 0#32) (k0_off2_inb L 0)).view.loc (thr d L) ↦[(xWinOf (k0_off2 L 0#32) (k0_off2_inb L 0)).view.set]{rsh} fx)
        ∗ ((xWinOf (k0_off3 L 0#32) (k0_off3_inb L 0)).view.loc (thr d L) ↦[(xWinOf (k0_off3 L 0#32) (k0_off3_inb L 0)).view.set]{rsh} fx)
        ∗ ((xWinOf (k0_off4 L 0#32) (k0_off4_inb L 0)).view.loc (thr d L) ↦[(xWinOf (k0_off4 L 0#32) (k0_off4_inb L 0)).view.set]{rsh} fx)
        ∗ ((xWinOf (k0_off5 L 0#32) (k0_off5_inb L 0)).view.loc (thr d L) ↦[(xWinOf (k0_off5 L 0#32) (k0_off5_inb L 0)).view.set]{rsh} fx)) :=
  srcChunk_pro d L fp fx 0

theorem srcChunk_pro1 (fp : Buf (Elt F) (pLoc d)) (fx : Buf (Elt F) (xLoc d)) :
    srcChunk d L fp fx 1 (by decide)
      = iprop(((pWinOf (k0_off1 L 4#32) (k0_off1_inb L 1)).view.loc (thr d L) ↦[(pWinOf (k0_off1 L 4#32) (k0_off1_inb L 1)).view.set]{rsh} fp)
        ∗ ((xWinOf (k0_off2 L 4#32) (k0_off2_inb L 1)).view.loc (thr d L) ↦[(xWinOf (k0_off2 L 4#32) (k0_off2_inb L 1)).view.set]{rsh} fx)
        ∗ ((xWinOf (k0_off3 L 4#32) (k0_off3_inb L 1)).view.loc (thr d L) ↦[(xWinOf (k0_off3 L 4#32) (k0_off3_inb L 1)).view.set]{rsh} fx)
        ∗ ((xWinOf (k0_off4 L 4#32) (k0_off4_inb L 1)).view.loc (thr d L) ↦[(xWinOf (k0_off4 L 4#32) (k0_off4_inb L 1)).view.set]{rsh} fx)
        ∗ ((xWinOf (k0_off5 L 4#32) (k0_off5_inb L 1)).view.loc (thr d L) ↦[(xWinOf (k0_off5 L 4#32) (k0_off5_inb L 1)).view.set]{rsh} fx)) :=
  srcChunk_pro d L fp fx 1

theorem srcChunk_pro2 (fp : Buf (Elt F) (pLoc d)) (fx : Buf (Elt F) (xLoc d)) :
    srcChunk d L fp fx 2 (by decide)
      = iprop(((pWinOf (k0_off1 L 8#32) (k0_off1_inb L 2)).view.loc (thr d L) ↦[(pWinOf (k0_off1 L 8#32) (k0_off1_inb L 2)).view.set]{rsh} fp)
        ∗ ((xWinOf (k0_off2 L 8#32) (k0_off2_inb L 2)).view.loc (thr d L) ↦[(xWinOf (k0_off2 L 8#32) (k0_off2_inb L 2)).view.set]{rsh} fx)
        ∗ ((xWinOf (k0_off3 L 8#32) (k0_off3_inb L 2)).view.loc (thr d L) ↦[(xWinOf (k0_off3 L 8#32) (k0_off3_inb L 2)).view.set]{rsh} fx)
        ∗ ((xWinOf (k0_off4 L 8#32) (k0_off4_inb L 2)).view.loc (thr d L) ↦[(xWinOf (k0_off4 L 8#32) (k0_off4_inb L 2)).view.set]{rsh} fx)
        ∗ ((xWinOf (k0_off5 L 8#32) (k0_off5_inb L 2)).view.loc (thr d L) ↦[(xWinOf (k0_off5 L 8#32) (k0_off5_inb L 2)).view.set]{rsh} fx)) :=
  srcChunk_pro d L fp fx 2

end Pro

theorem flightIn_pro0 (m : (ℓ : Loc nD τ sig) → Buf (Elt F) ℓ) (d : Dev nD) (L : grid0.Coords) :
    (iprop(∃ gp g0 g1 g2 g3, loadFlight (F := F) d L cc0_scratch3.sem pS0 xS00 xS01 xS02 xS03
        (pWinOf (k0_off1 L 0#32) (k0_off1_inb L 0)) (xWinOf (k0_off2 L 0#32) (k0_off2_inb L 0)) (xWinOf (k0_off3 L 0#32) (k0_off3_inb L 0)) (xWinOf (k0_off4 L 0#32) (k0_off4_inb L 0)) (xWinOf (k0_off5 L 0#32) (k0_off5_inb L 0)) rsh
        (mp m d) (m (xLoc d)) (m (xLoc d)) (m (xLoc d)) (m (xLoc d)) gp g0 g1 g2 g3) : sProp 𝕄)
      = flightIn0 m d L 0 (by decide) := by
  unfold flightIn0
  exact ex_congr fun gp => ex_congr fun g0 => ex_congr fun g1 => ex_congr fun g2 => ex_congr fun g3 =>
    loadFlight_congr d L _ _ _ _ _ _ (off_pro_p L 0) (off_pro_x0 L 0) (off_pro_x1 L 0) (off_pro_x2 L 0) (off_pro_x3 L 0)
      _ _ _ _ _ _ _ _ _ _ rsh _ _ _ _ _ gp g0 g1 g2 g3

theorem flightIn_pro1 (m : (ℓ : Loc nD τ sig) → Buf (Elt F) ℓ) (d : Dev nD) (L : grid0.Coords) :
    (iprop(∃ gp g0 g1 g2 g3, loadFlight (F := F) d L cc0_scratch4.sem pS1 xS10 xS11 xS12 xS13
        (pWinOf (k0_off1 L 4#32) (k0_off1_inb L 1)) (xWinOf (k0_off2 L 4#32) (k0_off2_inb L 1)) (xWinOf (k0_off3 L 4#32) (k0_off3_inb L 1)) (xWinOf (k0_off4 L 4#32) (k0_off4_inb L 1)) (xWinOf (k0_off5 L 4#32) (k0_off5_inb L 1)) rsh
        (mp m d) (m (xLoc d)) (m (xLoc d)) (m (xLoc d)) (m (xLoc d)) gp g0 g1 g2 g3) : sProp 𝕄)
      = flightIn1 m d L 1 (by decide) := by
  unfold flightIn1
  exact ex_congr fun gp => ex_congr fun g0 => ex_congr fun g1 => ex_congr fun g2 => ex_congr fun g3 =>
    loadFlight_congr d L _ _ _ _ _ _ (off_pro_p L 1) (off_pro_x0 L 1) (off_pro_x1 L 1) (off_pro_x2 L 1) (off_pro_x3 L 1)
      _ _ _ _ _ _ _ _ _ _ rsh _ _ _ _ _ gp g0 g1 g2 g3

theorem flightIn_pro2 (m : (ℓ : Loc nD τ sig) → Buf (Elt F) ℓ) (d : Dev nD) (L : grid0.Coords) :
    (iprop(∃ gp g0 g1 g2 g3, loadFlight (F := F) d L cc0_scratch5.sem pS2 xS20 xS21 xS22 xS23
        (pWinOf (k0_off1 L 8#32) (k0_off1_inb L 2)) (xWinOf (k0_off2 L 8#32) (k0_off2_inb L 2)) (xWinOf (k0_off3 L 8#32) (k0_off3_inb L 2)) (xWinOf (k0_off4 L 8#32) (k0_off4_inb L 2)) (xWinOf (k0_off5 L 8#32) (k0_off5_inb L 2)) rsh
        (mp m d) (m (xLoc d)) (m (xLoc d)) (m (xLoc d)) (m (xLoc d)) gp g0 g1 g2 g3) : sProp 𝕄)
      = flightIn2 m d L 2 (by decide) := by
  unfold flightIn2
  exact ex_congr fun gp => ex_congr fun g0 => ex_congr fun g1 => ex_congr fun g2 => ex_congr fun g3 =>
    loadFlight_congr d L _ _ _ _ _ _ (off_pro_p L 2) (off_pro_x0 L 2) (off_pro_x1 L 2) (off_pro_x2 L 2) (off_pro_x3 L 2)
      _ _ _ _ _ _ _ _ _ _ rsh _ _ _ _ _ gp g0 g1 g2 g3

theorem outChunk_st (d : Dev nD) (L : grid0.Coords) (fo : Buf (Elt F) (oLoc d)) (k : Fin k0_t1_loop.trips) (s : Fin 4) :
    outChunk d L fo (4 * k.val + s.val) (by have := trip_lt k; have := s.isLt; omega)
      = iprop(((oWinOf (k0_off596 L k (BitVec.ofNat 32 s.val)) (k0_off596_inb L k s)).view.loc (thr d L) ↦[(oWinOf (k0_off596 L k (BitVec.ofNat 32 s.val)) (k0_off596_inb L k s)).view.set]{fullShare} fo)
        ∗ ((oWinOf (k0_off597 L k (BitVec.ofNat 32 s.val)) (k0_off597_inb L k s)).view.loc (thr d L) ↦[(oWinOf (k0_off597 L k (BitVec.ofNat 32 s.val)) (k0_off597_inb L k s)).view.set]{fullShare} fo)
        ∗ ((oWinOf (k0_off598 L k (BitVec.ofNat 32 s.val)) (k0_off598_inb L k s)).view.loc (thr d L) ↦[(oWinOf (k0_off598 L k (BitVec.ofNat 32 s.val)) (k0_off598_inb L k s)).view.set]{fullShare} fo)
        ∗ ((oWinOf (k0_off599 L k (BitVec.ofNat 32 s.val)) (k0_off599_inb L k s)).view.loc (thr d L) ↦[(oWinOf (k0_off599 L k (BitVec.ofNat 32 s.val)) (k0_off599_inb L k s)).view.set]{fullShare} fo)) := by
  unfold outChunk
  exact sep_congr' (oWin_pts d L (off_st0 L k s) _ _ fullShare fo).symm (sep_congr' (oWin_pts d L (off_st1 L k s) _ _ fullShare fo).symm
    (sep_congr' (oWin_pts d L (off_st2 L k s) _ _ fullShare fo).symm (oWin_pts d L (off_st3 L k s) _ _ fullShare fo).symm))

theorem agree_of_read {κ : Kind} {sp : Space} {s : Shape} {e : EltTy} (v : View sig κ sp s e) {Val : EltTy → Type} (f1 f2 : v.ty.Contents Val)
    (h : ∀ y, v.read Val f1 y = v.read Val f2 y) : ∀ i ∈ v.set, f1 i = f2 i := by
  intro i hi
  obtain ⟨y, -, rfl⟩ := Finset.mem_map.mp hi
  have hy := h y
  rw [View.read_apply, View.read_apply] at hy
  exact (cast_inj _).mp hy

section Values
variable (m : (ℓ : Loc nD τ sig) → Buf (Elt F) ℓ) (d : Dev nD) (L : grid0.Coords)

theorem mres_apply (b : Fin 4) (r : Fin 4096) (l : Fin 1024) :
    mres m d (ix3 b r l) = FloatOps.addf (m (xLoc d) (ix3 b r l)) (mp m d (ix2 r l)) := rfl

theorem staged_of_value (s : Fin 2) (c : ℕ) (hc : c < 32) (fs : Buf (Elt F) (sB.view.loc (thr d L)))
    (xs0 xs1 xs2 xs3 ps : Memref sig .scVector .vmem S4x1024 .f32)
    (g0 : xs0.view.ty.Contents (Elt F)) (g1 : xs1.view.ty.Contents (Elt F)) (g2 : xs2.view.ty.Contents (Elt F)) (g3 : xs3.view.ty.Contents (Elt F))
    (gp : ps.view.ty.Contents (Elt F))
    (w0 w1 w2 w3 wp : S4x1024.Idx → Elt F .f32)
    (r0x : ∀ (j : Fin 4) (l : Fin 1024), w0 (ix2 j l) = m (xLoc d) (ix3 (0 : Fin 4) (⟨r0 L + 4 * c + j.val, win_row_lt L c hc j⟩ : Fin 4096) l))
    (r1x : ∀ (j : Fin 4) (l : Fin 1024), w1 (ix2 j l) = m (xLoc d) (ix3 (1 : Fin 4) (⟨r0 L + 4 * c + j.val, win_row_lt L c hc j⟩ : Fin 4096) l))
    (r2x : ∀ (j : Fin 4) (l : Fin 1024), w2 (ix2 j l) = m (xLoc d) (ix3 (2 : Fin 4) (⟨r0 L + 4 * c + j.val, win_row_lt L c hc j⟩ : Fin 4096) l))
    (r3x : ∀ (j : Fin 4) (l : Fin 1024), w3 (ix2 j l) = m (xLoc d) (ix3 (3 : Fin 4) (⟨r0 L + 4 * c + j.val, win_row_lt L c hc j⟩ : Fin 4096) l))
    (rp : ∀ (j : Fin 4) (l : Fin 1024), wp (ix2 j l) = mp m d (ix2 (⟨r0 L + 4 * c + j.val, win_row_lt L c hc j⟩ : Fin 4096) l))
    (hv : ∀ (b : Fin 4) (l : Fin 1024) (j' : Fin 4), fs (ix4 s b j' l)
      = FloatOps.addf ((if b.val = 0 then xs0.view.read (Elt F) (xs0.view.writes (Elt F) g0 [⟨Rect.whole S4x1024, ReadAs.same.apply w0⟩])
          else if b.val = 1 then xs1.view.read (Elt F) (xs1.view.writes (Elt F) g1 [⟨Rect.whole S4x1024, ReadAs.same.apply w1⟩])
          else if b.val = 2 then xs2.view.read (Elt F) (xs2.view.writes (Elt F) g2 [⟨Rect.whole S4x1024, ReadAs.same.apply w2⟩])
          else xs3.view.read (Elt F) (xs3.view.writes (Elt F) g3 [⟨Rect.whole S4x1024, ReadAs.same.apply w3⟩])) (ix2 j' l))
        (ps.view.read (Elt F) (ps.view.writes (Elt F) gp [⟨Rect.whole S4x1024, ReadAs.same.apply wp⟩]) (ix2 j' l))) :
    staged m d L s c hc fs := by
  intro b l j
  rw [hv b l j, mres_apply, landed_apply, rp]
  congr 1
  match b with
  | ⟨0, _⟩ => exact (landed_apply _ _ _ _).trans (r0x j l)
  | ⟨1, _⟩ => exact (landed_apply _ _ _ _).trans (r1x j l)
  | ⟨2, _⟩ => exact (landed_apply _ _ _ _).trans (r2x j l)
  | ⟨3, _⟩ => exact (landed_apply _ _ _ _).trans (r3x j l)

theorem sS00_read (fs : S2x4x4x1024.Idx → F .f32) (j : Fin 4) (l : Fin 1024) :
    sS00.view.read (Elt F) fs (ix2 j l) = fs (ix4 (0 : Fin 2) (0 : Fin 4) j l) := sslot_read (0, 0) _ fs j l
theorem sS01_read (fs : S2x4x4x1024.Idx → F .f32) (j : Fin 4) (l : Fin 1024) :
    sS01.view.read (Elt F) fs (ix2 j l) = fs (ix4 (0 : Fin 2) (1 : Fin 4) j l) := sslot_read (0, 1) _ fs j l
theorem sS02_read (fs : S2x4x4x1024.Idx → F .f32) (j : Fin 4) (l : Fin 1024) :
    sS02.view.read (Elt F) fs (ix2 j l) = fs (ix4 (0 : Fin 2) (2 : Fin 4) j l) := sslot_read (0, 2) _ fs j l
theorem sS03_read (fs : S2x4x4x1024.Idx → F .f32) (j : Fin 4) (l : Fin 1024) :
    sS03.view.read (Elt F) fs (ix2 j l) = fs (ix4 (0 : Fin 2) (3 : Fin 4) j l) := sslot_read (0, 3) _ fs j l
theorem sS10_read (fs : S2x4x4x1024.Idx → F .f32) (j : Fin 4) (l : Fin 1024) :
    sS10.view.read (Elt F) fs (ix2 j l) = fs (ix4 (1 : Fin 2) (0 : Fin 4) j l) := sslot_read (1, 0) _ fs j l
theorem sS11_read (fs : S2x4x4x1024.Idx → F .f32) (j : Fin 4) (l : Fin 1024) :
    sS11.view.read (Elt F) fs (ix2 j l) = fs (ix4 (1 : Fin 2) (1 : Fin 4) j l) := sslot_read (1, 1) _ fs j l
theorem sS12_read (fs : S2x4x4x1024.Idx → F .f32) (j : Fin 4) (l : Fin 1024) :
    sS12.view.read (Elt F) fs (ix2 j l) = fs (ix4 (1 : Fin 2) (2 : Fin 4) j l) := sslot_read (1, 2) _ fs j l
theorem sS13_read (fs : S2x4x4x1024.Idx → F .f32) (j : Fin 4) (l : Fin 1024) :
    sS13.view.read (Elt F) fs (ix2 j l) = fs (ix4 (1 : Fin 2) (3 : Fin 4) j l) := sslot_read (1, 3) _ fs j l

theorem out_done_one (s : Fin 2) (c : ℕ) (hc : c < 32) (fs : Buf (Elt F) (sB.view.loc (thr d L))) (h : staged m d L s c hc fs) (b : ℕ) (hb : b < 4)
    (w : S4x1024.Idx → Elt F .f32) (hw : ∀ (j : Fin 4) (l : Fin 1024), w (ix2 j l) = fs (ix4 s (⟨b, hb⟩ : Fin 4) j l))
    (g : (OW L c b hc hb).view.ty.Contents (Elt F)) :
    ((OW L c b hc hb).view.loc (thr d L) ↦[(OW L c b hc hb).view.set]{fullShare}
        (OW L c b hc hb).view.writes (Elt F) g [⟨Rect.whole S4x1024, ReadAs.same.apply w⟩] : sProp 𝕄)
      = ((OW L c b hc hb).view.loc (thr d L) ↦[(OW L c b hc hb).view.set]{fullShare} mres m d) := by
  refine pointsTo_congr (agree_of_read (OW L c b hc hb).view _ _ fun y => ?_)
  have ey : y = ix2 (⟨(y 0).val, (y 0).isLt⟩ : Fin 4) (⟨(y 1).val, (y 1).isLt⟩ : Fin 1024) := by
    funext a
    match a with
    | ⟨0, _⟩ => rfl
    | ⟨1, _⟩ => rfl
  rw [landed_apply, ey, hw, OW_read]
  exact h ⟨b, hb⟩ _ _

theorem out_done0 (c : ℕ) (hc : c < 32) (fs : Buf (Elt F) (sB.view.loc (thr d L))) (h : staged m d L 0 c hc fs) :
    iprop(((OW L c 0 hc (by decide)).view.loc (thr d L) ↦[(OW L c 0 hc (by decide)).view.set]{fullShare} (OW L c 0 hc (by decide)).view.writes (Elt F) (OW L c 0 hc (by decide)).view.junk [⟨Rect.whole S4x1024, ReadAs.same.apply (sS00.view.read (Elt F) fs)⟩])
        ∗ ((OW L c 1 hc (by decide)).view.loc (thr d L) ↦[(OW L c 1 hc (by decide)).view.set]{fullShare} (OW L c 1 hc (by decide)).view.writes (Elt F) (OW L c 1 hc (by decide)).view.junk [⟨Rect.whole S4x1024, ReadAs.same.apply (sS01.view.read (Elt F) fs)⟩])
        ∗ ((OW L c 2 hc (by decide)).view.loc (thr d L) ↦[(OW L c 2 hc (by decide)).view.set]{fullShare} (OW L c 2 hc (by decide)).view.writes (Elt F) (OW L c 2 hc (by decide)).view.junk [⟨Rect.whole S4x1024, ReadAs.same.apply (sS02.view.read (Elt F) fs)⟩])
        ∗ ((OW L c 3 hc (by decide)).view.loc (thr d L) ↦[(OW L c 3 hc (by decide)).view.set]{fullShare} (OW L c 3 hc (by decide)).view.writes (Elt F) (OW L c 3 hc (by decide)).view.junk [⟨Rect.whole S4x1024, ReadAs.same.apply (sS03.view.read (Elt F) fs)⟩]))
      ⊢ outChunk d L (mres m d) c hc := by
  unfold outChunk
  have e0 := out_done_one m d L 0 c hc fs h 0 (by decide) _ (sS00_read fs) (OW L c 0 hc (by decide)).view.junk
  have e1 := out_done_one m d L 0 c hc fs h 1 (by decide) _ (sS01_read fs) (OW L c 1 hc (by decide)).view.junk
  have e2 := out_done_one m d L 0 c hc fs h 2 (by decide) _ (sS02_read fs) (OW L c 2 hc (by decide)).view.junk
  have e3 := out_done_one m d L 0 c hc fs h 3 (by decide) _ (sS03_read fs) (OW L c 3 hc (by decide)).view.junk
  exact Entails.of_eq (sep_congr' e0 (sep_congr' e1 (sep_congr' e2 e3)))

theorem out_done1 (c : ℕ) (hc : c < 32) (fs : Buf (Elt F) (sB.view.loc (thr d L))) (h : staged m d L 1 c hc fs) :
    iprop(((OW L c 0 hc (by decide)).view.loc (thr d L) ↦[(OW L c 0 hc (by decide)).view.set]{fullShare} (OW L c 0 hc (by decide)).view.writes (Elt F) (OW L c 0 hc (by decide)).view.junk [⟨Rect.whole S4x1024, ReadAs.same.apply (sS10.view.read (Elt F) fs)⟩])
        ∗ ((OW L c 1 hc (by decide)).view.loc (thr d L) ↦[(OW L c 1 hc (by decide)).view.set]{fullShare} (OW L c 1 hc (by decide)).view.writes (Elt F) (OW L c 1 hc (by decide)).view.junk [⟨Rect.whole S4x1024, ReadAs.same.apply (sS11.view.read (Elt F) fs)⟩])
        ∗ ((OW L c 2 hc (by decide)).view.loc (thr d L) ↦[(OW L c 2 hc (by decide)).view.set]{fullShare} (OW L c 2 hc (by decide)).view.writes (Elt F) (OW L c 2 hc (by decide)).view.junk [⟨Rect.whole S4x1024, ReadAs.same.apply (sS12.view.read (Elt F) fs)⟩])
        ∗ ((OW L c 3 hc (by decide)).view.loc (thr d L) ↦[(OW L c 3 hc (by decide)).view.set]{fullShare} (OW L c 3 hc (by decide)).view.writes (Elt F) (OW L c 3 hc (by decide)).view.junk [⟨Rect.whole S4x1024, ReadAs.same.apply (sS13.view.read (Elt F) fs)⟩]))
      ⊢ outChunk d L (mres m d) c hc := by
  unfold outChunk
  have e0 := out_done_one m d L 1 c hc fs h 0 (by decide) _ (sS10_read fs) (OW L c 0 hc (by decide)).view.junk
  have e1 := out_done_one m d L 1 c hc fs h 1 (by decide) _ (sS11_read fs) (OW L c 1 hc (by decide)).view.junk
  have e2 := out_done_one m d L 1 c hc fs h 2 (by decide) _ (sS12_read fs) (OW L c 2 hc (by decide)).view.junk
  have e3 := out_done_one m d L 1 c hc fs h 3 (by decide) _ (sS13_read fs) (OW L c 3 hc (by decide)).view.junk
  exact Entails.of_eq (sep_congr' e0 (sep_congr' e1 (sep_congr' e2 e3)))
end Values

end Cert.Proof.KI

end
-- ==== Proof.KRegion.lean ====
import proofs.«210091_g81140522156176_cont_9to1_m_468_11_alg».proof.Proof.KGlue

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Mid
variable (m : (ℓ : Loc nD τ sig) → Buf (Elt F) ℓ) (d : Dev nD) (L : grid0.Coords)

theorem loadPart_lt (g : ℕ) (h : g < 8) :
    loadPart m d L g = iprop(flightIn0 m d L (4 * g) (by omega) ∗ flightIn1 m d L (4 * g + 1) (by omega) ∗ flightIn2 m d L (4 * g + 2) (by omega) ∗ freeSlot3 d L) := by
  unfold loadPart; rw [dif_pos h]
theorem storePart_mid (g : ℕ) (h0 : g ≠ 0) (h8 : g ≤ 8) :
    storePart m d L g = iprop(flightOut0 m d L (4 * g - 2) (by omega) ∗ flightOut1 m d L (4 * g - 1) (by omega)) := by
  unfold storePart; rw [dif_neg h0, dif_pos h8]

theorem outChunk_congr (fo : Buf (Elt F) (oLoc d)) {c c' : ℕ} (e : c = c') (hc : c < 32) (hc' : c' < 32) :
    outChunk d L fo c hc = outChunk d L fo c' hc' := by subst e; rfl

theorem srcChunk_s0 (fp : Buf (Elt F) (pLoc d)) (fx : Buf (Elt F) (xLoc d)) (k : Fin k0_t1_loop.trips) (hk6 : k.val < 7) (c : ℕ) (e : c = 4 * k.val + 3) (hc : c < 32) :
    srcChunk d L fp fx c hc
      = iprop(((pWinOf (k0_off11 L k) (k0_off11_inb L k (c1_all k))).view.loc (thr d L) ↦[(pWinOf (k0_off11 L k) (k0_off11_inb L k (c1_all k))).view.set]{rsh} fp)
        ∗ ((xWinOf (k0_off12 L k) (k0_off12_inb L k (c1_all k))).view.loc (thr d L) ↦[(xWinOf (k0_off12 L k) (k0_off12_inb L k (c1_all k))).view.set]{rsh} fx)
        ∗ ((xWinOf (k0_off13 L k) (k0_off13_inb L k (c1_all k))).view.loc (thr d L) ↦[(xWinOf (k0_off13 L k) (k0_off13_inb L k (c1_all k))).view.set]{rsh} fx)
        ∗ ((xWinOf (k0_off14 L k) (k0_off14_inb L k (c1_all k))).view.loc (thr d L) ↦[(xWinOf (k0_off14 L k) (k0_off14_inb L k (c1_all k))).view.set]{rsh} fx)
        ∗ ((xWinOf (k0_off15 L k) (k0_off15_inb L k (c1_all k))).view.loc (thr d L) ↦[(xWinOf (k0_off15 L k) (k0_off15_inb L k (c1_all k))).view.set]{rsh} fx)) := by
  subst e
  unfold srcChunk
  exact sep_congr' (pWin_pts d L (off_s0_p L k) _ _ rsh fp).symm (sep_congr' (xWin_pts d L (off_s0_x0 L k) _ _ rsh fx).symm
    (sep_congr' (xWin_pts d L (off_s0_x1 L k) _ _ rsh fx).symm (sep_congr' (xWin_pts d L (off_s0_x2 L k) _ _ rsh fx).symm
      (xWin_pts d L (off_s0_x3 L k) _ _ rsh fx).symm)))

theorem srcChunk_s1 (fp : Buf (Elt F) (pLoc d)) (fx : Buf (Elt F) (xLoc d)) (k : Fin k0_t1_loop.trips) (hk6 : k.val < 7) (c : ℕ) (e : c = 4 * k.val + 4) (hc : c < 32) :
    srcChunk d L fp fx c hc
      = iprop(((pWinOf (k0_off600 L k) (k0_off600_inb L k (c3_of k hk6))).view.loc (thr d L) ↦[(pWinOf (k0_off600 L k) (k0_off600_inb L k (c3_of k hk6))).view.set]{rsh} fp)
        ∗ ((xWinOf (k0_off601 L k) (k0_off601_inb L k (c3_of k hk6))).view.loc (thr d L) ↦[(xWinOf (k0_off601 L k) (k0_off601_inb L k (c3_of k hk6))).view.set]{rsh} fx)
        ∗ ((xWinOf (k0_off602 L k) (k0_off602_inb L k (c3_of k hk6))).view.loc (thr d L) ↦[(xWinOf (k0_off602 L k) (k0_off602_inb L k (c3_of k hk6))).view.set]{rsh} fx)
        ∗ ((xWinOf (k0_off603 L k) (k0_off603_inb L k (c3_of k hk6))).view.loc (thr d L) ↦[(xWinOf (k0_off603 L k) (k0_off603_inb L k (c3_of k hk6))).view.set]{rsh} fx)
        ∗ ((xWinOf (k0_off604 L k) (k0_off604_inb L k (c3_of k hk6))).view.loc (thr d L) ↦[(xWinOf (k0_off604 L k) (k0_off604_inb L k (c3_of k hk6))).view.set]{rsh} fx)) := by
  subst e
  unfold srcChunk
  exact sep_congr' (pWin_pts d L (off_s1_p L k) _ _ rsh fp).symm (sep_congr' (xWin_pts d L (off_s1_x0 L k) _ _ rsh fx).symm
    (sep_congr' (xWin_pts d L (off_s1_x1 L k) _ _ rsh fx).symm (sep_congr' (xWin_pts d L (off_s1_x2 L k) _ _ rsh fx).symm
      (xWin_pts d L (off_s1_x3 L k) _ _ rsh fx).symm)))

theorem srcChunk_s2 (fp : Buf (Elt F) (pLoc d)) (fx : Buf (Elt F) (xLoc d)) (k : Fin k0_t1_loop.trips) (hk6 : k.val < 7) (c : ℕ) (e : c = 4 * k.val + 5) (hc : c < 32) :
    srcChunk d L fp fx c hc
      = iprop(((pWinOf (k0_off1185 L k) (k0_off1185_inb L k (c5_of k hk6))).view.loc (thr d L) ↦[(pWinOf (k0_off1185 L k) (k0_off1185_inb L k (c5_of k hk6))).view.set]{rsh} fp)
        ∗ ((xWinOf (k0_off1186 L k) (k0_off1186_inb L k (c5_of k hk6))).view.loc (thr d L) ↦[(xWinOf (k0_off1186 L k) (k0_off1186_inb L k (c5_of k hk6))).view.set]{rsh} fx)
        ∗ ((xWinOf (k0_off1187 L k) (k0_off1187_inb L k (c5_of k hk6))).view.loc (thr d L) ↦[(xWinOf (k0_off1187 L k) (k0_off1187_inb L k (c5_of k hk6))).view.set]{rsh} fx)
        ∗ ((xWinOf (k0_off1188 L k) (k0_off1188_inb L k (c5_of k hk6))).view.loc (thr d L) ↦[(xWinOf (k0_off1188 L k) (k0_off1188_inb L k (c5_of k hk6))).view.set]{rsh} fx)
        ∗ ((xWinOf (k0_off1189 L k) (k0_off1189_inb L k (c5_of k hk6))).view.loc (thr d L) ↦[(xWinOf (k0_off1189 L k) (k0_off1189_inb L k (c5_of k hk6))).view.set]{rsh} fx)) := by
  subst e
  unfold srcChunk
  exact sep_congr' (pWin_pts d L (off_s2_p L k) _ _ rsh fp).symm (sep_congr' (xWin_pts d L (off_s2_x0 L k) _ _ rsh fx).symm
    (sep_congr' (xWin_pts d L (off_s2_x1 L k) _ _ rsh fx).symm (sep_congr' (xWin_pts d L (off_s2_x2 L k) _ _ rsh fx).symm
      (xWin_pts d L (off_s2_x3 L k) _ _ rsh fx).symm)))

theorem srcChunk_s3 (fp : Buf (Elt F) (pLoc d)) (fx : Buf (Elt F) (xLoc d)) (k : Fin k0_t1_loop.trips) (hk6 : k.val < 7) (c : ℕ) (e : c = 4 * k.val + 6) (hc : c < 32) :
    srcChunk d L fp fx c hc
      = iprop(((pWinOf (k0_off1766 L k) (k0_off1766_inb L k (c6_of k hk6))).view.loc (thr d L) ↦[(pWinOf (k0_off1766 L k) (k0_off1766_inb L k (c6_of k hk6))).view.set]{rsh} fp)
        ∗ ((xWinOf (k0_off1767 L k) (k0_off1767_inb L k (c6_of k hk6))).view.loc (thr d L) ↦[(xWinOf (k0_off1767 L k) (k0_off1767_inb L k (c6_of k hk6))).view.set]{rsh} fx)
        ∗ ((xWinOf (k0_off1768 L k) (k0_off1768_inb L k (c6_of k hk6))).view.loc (thr d L) ↦[(xWinOf (k0_off1768 L k) (k0_off1768_inb L k (c6_of k hk6))).view.set]{rsh} fx)
        ∗ ((xWinOf (k0_off1769 L k) (k0_off1769_inb L k (c6_of k hk6))).view.loc (thr d L) ↦[(xWinOf (k0_off1769 L k) (k0_off1769_inb L k (c6_of k hk6))).view.set]{rsh} fx)
        ∗ ((xWinOf (k0_off1770 L k) (k0_off1770_inb L k (c6_of k hk6))).view.loc (thr d L) ↦[(xWinOf (k0_off1770 L k) (k0_off1770_inb L k (c6_of k hk6))).view.set]{rsh} fx)) := by
  subst e
  unfold srcChunk
  exact sep_congr' (pWin_pts d L (off_s3_p L k) _ _ rsh fp).symm (sep_congr' (xWin_pts d L (off_s3_x0 L k) _ _ rsh fx).symm
    (sep_congr' (xWin_pts d L (off_s3_x1 L k) _ _ rsh fx).symm (sep_congr' (xWin_pts d L (off_s3_x2 L k) _ _ rsh fx).symm
      (xWin_pts d L (off_s3_x3 L k) _ _ rsh fx).symm)))

theorem outChunk_s0 (fo : Buf (Elt F) (oLoc d)) (k : Fin k0_t1_loop.trips) (c : ℕ) (e : c = 4 * k.val + 0) (hc : c < 32) :
    outChunk d L fo c hc
      = iprop(((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)) := by
  subst e
  exact (outChunk_congr d L fo (by simp) _ _).trans (outChunk_st d L fo k 0)

theorem outChunk_s1 (fo : Buf (Elt F) (oLoc d)) (k : Fin k0_t1_loop.trips) (c : ℕ) (e : c = 4 * k.val + 1) (hc : c < 32) :
    outChunk d L fo c hc
      = iprop(((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)) := by
  subst e
  exact (outChunk_congr d L fo (by simp) _ _).trans (outChunk_st d L fo k 1)

theorem outChunk_s2 (fo : Buf (Elt F) (oLoc d)) (k : Fin k0_t1_loop.trips) (c : ℕ) (e : c = 4 * k.val + 2) (hc : c < 32) :
    outChunk d L fo c hc
      = iprop(((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)) := by
  subst e
  exact (outChunk_congr d L fo (by simp) _ _).trans (outChunk_st d L fo k 2)

theorem outChunk_s3 (fo : Buf (Elt F) (oLoc d)) (k : Fin k0_t1_loop.trips) (c : ℕ) (e : c = 4 * k.val + 3) (hc : c < 32) :
    outChunk d L fo c hc
      = iprop(((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)) := by
  subst e
  exact (outChunk_congr d L fo (by simp) _ _).trans (outChunk_st d L fo k 3)
end Mid

section Mid2
variable (m : (ℓ : Loc nD τ sig) → Buf (Elt F) ℓ) (d : Dev nD) (L : grid0.Coords)

theorem flightIn_new0 (k : Fin k0_t1_loop.trips) (hk6 : k.val < 7) (hc : 4 * (k.val + 1) < 32) :
    (iprop(∃ gp g0 g1 g2 g3, loadFlight (F := F) d L cc0_scratch3.sem pS0 xS00 xS01 xS02 xS03
        (pWinOf (k0_off600 L k) (k0_off600_inb L k (c3_of k hk6))) (xWinOf (k0_off601 L k) (k0_off601_inb L k (c3_of k hk6))) (xWinOf (k0_off602 L k) (k0_off602_inb L k (c3_of k hk6))) (xWinOf (k0_off603 L k) (k0_off603_inb L k (c3_of k hk6))) (xWinOf (k0_off604 L k) (k0_off604_inb L k (c3_of k hk6))) rsh
        (mp m d) (m (xLoc d)) (m (xLoc d)) (m (xLoc d)) (m (xLoc d)) gp g0 g1 g2 g3) : sProp 𝕄)
      = flightIn0 m d L (4 * (k.val + 1)) hc := by
  unfold flightIn0
  exact ex_congr fun gp => ex_congr fun g0 => ex_congr fun g1 => ex_congr fun g2 => ex_congr fun g3 =>
    loadFlight_congr d L _ _ _ _ _ _
      ((k0_off600_eq L k).trans (vec2_congr (by rw [r0_def]; omega)))
      ((k0_off601_eq L k).trans (vec3_congr 0 (by rw [r0_def]; omega))) ((k0_off602_eq L k).trans (vec3_congr 1 (by rw [r0_def]; omega)))
      ((k0_off603_eq L k).trans (vec3_congr 2 (by rw [r0_def]; omega))) ((k0_off604_eq L k).trans (vec3_congr 3 (by rw [r0_def]; omega)))
      _ _ _ _ _ _ _ _ _ _ rsh _ _ _ _ _ gp g0 g1 g2 g3

theorem flightIn_new1 (k : Fin k0_t1_loop.trips) (hk6 : k.val < 7) (hc : 4 * (k.val + 1) + 1 < 32) :
    (iprop(∃ gp g0 g1 g2 g3, loadFlight (F := F) d L cc0_scratch4.sem pS1 xS10 xS11 xS12 xS13
        (pWinOf (k0_off1185 L k) (k0_off1185_inb L k (c5_of k hk6))) (xWinOf (k0_off1186 L k) (k0_off1186_inb L k (c5_of k hk6))) (xWinOf (k0_off1187 L k) (k0_off1187_inb L k (c5_of k hk6))) (xWinOf (k0_off1188 L k) (k0_off1188_inb L k (c5_of k hk6))) (xWinOf (k0_off1189 L k) (k0_off1189_inb L k (c5_of k hk6))) rsh
        (mp m d) (m (xLoc d)) (m (xLoc d)) (m (xLoc d)) (m (xLoc d)) gp g0 g1 g2 g3) : sProp 𝕄)
      = flightIn1 m d L (4 * (k.val + 1) + 1) hc := by
  unfold flightIn1
  exact ex_congr fun gp => ex_congr fun g0 => ex_congr fun g1 => ex_congr fun g2 => ex_congr fun g3 =>
    loadFlight_congr d L _ _ _ _ _ _
      ((k0_off1185_eq L k).trans (vec2_congr (by rw [r0_def]; omega)))
      ((k0_off1186_eq L k).trans (vec3_congr 0 (by rw [r0_def]; omega))) ((k0_off1187_eq L k).trans (vec3_congr 1 (by rw [r0_def]; omega)))
      ((k0_off1188_eq L k).trans (vec3_congr 2 (by rw [r0_def]; omega))) ((k0_off1189_eq L k).trans (vec3_congr 3 (by rw [r0_def]; omega)))
      _ _ _ _ _ _ _ _ _ _ rsh _ _ _ _ _ gp g0 g1 g2 g3

theorem flightIn_new2 (k : Fin k0_t1_loop.trips) (hk6 : k.val < 7) (hc : 4 * (k.val + 1) + 2 < 32) :
    (iprop(∃ gp g0 g1 g2 g3, loadFlight (F := F) d L cc0_scratch5.sem pS2 xS20 xS21 xS22 xS23
        (pWinOf (k0_off1766 L k) (k0_off1766_inb L k (c6_of k hk6))) (xWinOf (k0_off1767 L k) (k0_off1767_inb L k (c6_of k hk6))) (xWinOf (k0_off1768 L k) (k0_off1768_inb L k (c6_of k hk6))) (xWinOf (k0_off1769 L k) (k0_off1769_inb L k (c6_of k hk6))) (xWinOf (k0_off1770 L k) (k0_off1770_inb L k (c6_of k hk6))) rsh
        (mp m d) (m (xLoc d)) (m (xLoc d)) (m (xLoc d)) (m (xLoc d)) gp g0 g1 g2 g3) : sProp 𝕄)
      = flightIn2 m d L (4 * (k.val + 1) + 2) hc := by
  unfold flightIn2
  exact ex_congr fun gp => ex_congr fun g0 => ex_congr fun g1 => ex_congr fun g2 => ex_congr fun g3 =>
    loadFlight_congr d L _ _ _ _ _ _
      ((k0_off1766_eq L k).trans (vec2_congr (by rw [r0_def]; omega)))
      ((k0_off1767_eq L k).trans (vec3_congr 0 (by rw [r0_def]; omega))) ((k0_off1768_eq L k).trans (vec3_congr 1 (by rw [r0_def]; omega)))
      ((k0_off1769_eq L k).trans (vec3_congr 2 (by rw [r0_def]; omega))) ((k0_off1770_eq L k).trans (vec3_congr 3 (by rw [r0_def]; omega)))
      _ _ _ _ _ _ _ _ _ _ rsh _ _ _ _ _ gp g0 g1 g2 g3

theorem lt4_0 : 0 < 4 := by decide
theorem lt4_1 : 1 < 4 := by decide
theorem lt4_2 : 2 < 4 := by decide
theorem lt4_3 : 3 < 4 := by decide

theorem off_n0_0 (L : grid0.Coords) (k : Fin k0_t1_loop.trips) (hk1 : 1 ≤ k.val) :
    k0_off596 L k 2#32 = ![0, r0 L + 4 * (4 * (k.val + 1) - 2), 0] := by
  have hs : ((2 : Fin 4).val) = 2 := rfl
  refine (k0_off596_eq L k 2).trans (vec3_congr 0 ?_)
  rw [r0_def, hs]; omega
theorem off_n0_1 (L : grid0.Coords) (k : Fin k0_t1_loop.trips) (hk1 : 1 ≤ k.val) :
    k0_off597 L k 2#32 = ![1, r0 L + 4 * (4 * (k.val + 1) - 2), 0] := by
  have hs : ((2 : Fin 4).val) = 2 := rfl
  refine (k0_off597_eq L k 2).trans (vec3_congr 1 ?_)
  rw [r0_def, hs]; omega
theorem off_n0_2 (L : grid0.Coords) (k : Fin k0_t1_loop.trips) (hk1 : 1 ≤ k.val) :
    k0_off598 L k 2#32 = ![2, r0 L + 4 * (4 * (k.val + 1) - 2), 0] := by
  have hs : ((2 : Fin 4).val) = 2 := rfl
  refine (k0_off598_eq L k 2).trans (vec3_congr 2 ?_)
  rw [r0_def, hs]; omega
theorem off_n0_3 (L : grid0.Coords) (k : Fin k0_t1_loop.trips) (hk1 : 1 ≤ k.val) :
    k0_off599 L k 2#32 = ![3, r0 L + 4 * (4 * (k.val + 1) - 2), 0] := by
  have hs : ((2 : Fin 4).val) = 2 := rfl
  refine (k0_off599_eq L k 2).trans (vec3_congr 3 ?_)
  rw [r0_def, hs]; omega
theorem off_n1_0 (L : grid0.Coords) (k : Fin k0_t1_loop.trips) (hk1 : 1 ≤ k.val) :
    k0_off596 L k 3#32 = ![0, r0 L + 4 * (4 * (k.val + 1) - 1), 0] := by
  have hs : ((3 : Fin 4).val) = 3 := rfl
  refine (k0_off596_eq L k 3).trans (vec3_congr 0 ?_)
  rw [r0_def, hs]; omega
theorem off_n1_1 (L : grid0.Coords) (k : Fin k0_t1_loop.trips) (hk1 : 1 ≤ k.val) :
    k0_off597 L k 3#32 = ![1, r0 L + 4 * (4 * (k.val + 1) - 1), 0] := by
  have hs : ((3 : Fin 4).val) = 3 := rfl
  refine (k0_off597_eq L k 3).trans (vec3_congr 1 ?_)
  rw [r0_def, hs]; omega
theorem off_n1_2 (L : grid0.Coords) (k : Fin k0_t1_loop.trips) (hk1 : 1 ≤ k.val) :
    k0_off598 L k 3#32 = ![2, r0 L + 4 * (4 * (k.val + 1) - 1), 0] := by
  have hs : ((3 : Fin 4).val) = 3 := rfl
  refine (k0_off598_eq L k 3).trans (vec3_congr 2 ?_)
  rw [r0_def, hs]; omega
theorem off_n1_3 (L : grid0.Coords) (k : Fin k0_t1_loop.trips) (hk1 : 1 ≤ k.val) :
    k0_off599 L k 3#32 = ![3, r0 L + 4 * (4 * (k.val + 1) - 1), 0] := by
  have hs : ((3 : Fin 4).val) = 3 := rfl
  refine (k0_off599_eq L k 3).trans (vec3_congr 3 ?_)
  rw [r0_def, hs]; omega
theorem off_w0_0 (L : grid0.Coords) (k : Fin k0_t1_loop.trips) (hk1 : 1 ≤ k.val) :
    k0_off596 L k 0#32 = ![0, r0 L + 4 * (4 * k.val), 0] := by
  have hs : ((0 : Fin 4).val) = 0 := rfl
  refine (k0_off596_eq L k 0).trans (vec3_congr 0 ?_)
  rw [r0_def, hs]; omega
theorem off_w0_1 (L : grid0.Coords) (k : Fin k0_t1_loop.trips) (hk1 : 1 ≤ k.val) :
    k0_off597 L k 0#32 = ![1, r0 L + 4 * (4 * k.val), 0] := by
  have hs : ((0 : Fin 4).val) = 0 := rfl
  refine (k0_off597_eq L k 0).trans (vec3_congr 1 ?_)
  rw [r0_def, hs]; omega
theorem off_w0_2 (L : grid0.Coords) (k : Fin k0_t1_loop.trips) (hk1 : 1 ≤ k.val) :
    k0_off598 L k 0#32 = ![2, r0 L + 4 * (4 * k.val), 0] := by
  have hs : ((0 : Fin 4).val) = 0 := rfl
  refine (k0_off598_eq L k 0).trans (vec3_congr 2 ?_)
  rw [r0_def, hs]; omega
theorem off_w0_3 (L : grid0.Coords) (k : Fin k0_t1_loop.trips) (hk1 : 1 ≤ k.val) :
    k0_off599 L k 0#32 = ![3, r0 L + 4 * (4 * k.val), 0] := by
  have hs : ((0 : Fin 4).val) = 0 := rfl
  refine (k0_off599_eq L k 0).trans (vec3_congr 3 ?_)
  rw [r0_def, hs]; omega
theorem off_w1_0 (L : grid0.Coords) (k : Fin k0_t1_loop.trips) (hk1 : 1 ≤ k.val) :
    k0_off596 L k 1#32 = ![0, r0 L + 4 * (4 * k.val + 1), 0] := by
  have hs : ((1 : Fin 4).val) = 1 := rfl
  refine (k0_off596_eq L k 1).trans (vec3_congr 0 ?_)
  rw [r0_def, hs]; omega
theorem off_w1_1 (L : grid0.Coords) (k : Fin k0_t1_loop.trips) (hk1 : 1 ≤ k.val) :
    k0_off597 L k 1#32 = ![1, r0 L + 4 * (4 * k.val + 1), 0] := by
  have hs : ((1 : Fin 4).val) = 1 := rfl
  refine (k0_off597_eq L k 1).trans (vec3_congr 1 ?_)
  rw [r0_def, hs]; omega
theorem off_w1_2 (L : grid0.Coords) (k : Fin k0_t1_loop.trips) (hk1 : 1 ≤ k.val) :
    k0_off598 L k 1#32 = ![2, r0 L + 4 * (4 * k.val + 1), 0] := by
  have hs : ((1 : Fin 4).val) = 1 := rfl
  refine (k0_off598_eq L k 1).trans (vec3_congr 2 ?_)
  rw [r0_def, hs]; omega
theorem off_w1_3 (L : grid0.Coords) (k : Fin k0_t1_loop.trips) (hk1 : 1 ≤ k.val) :
    k0_off599 L k 1#32 = ![3, r0 L + 4 * (4 * k.val + 1), 0] := by
  have hs : ((1 : Fin 4).val) = 1 := rfl
  refine (k0_off599_eq L k 1).trans (vec3_congr 3 ?_)
  rw [r0_def, hs]; omega

theorem storeFlight_new0 (k : Fin k0_t1_loop.trips) (hk1 : 1 ≤ k.val) (hc : 4 * (k.val + 1) - 2 < 32) (fs : Buf (Elt F) (sB.view.loc (thr d L))) :
    storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) (m (oLoc d)) (m (oLoc d)) (m (oLoc d)) (m (oLoc d)) fs
      = storeFlight0 (F := F) d L (OW L (4 * (k.val + 1) - 2) 0 hc lt4_0) (OW L (4 * (k.val + 1) - 2) 1 hc lt4_1) (OW L (4 * (k.val + 1) - 2) 2 hc lt4_2) (OW L (4 * (k.val + 1) - 2) 3 hc lt4_3)
          (m (oLoc d)) (m (oLoc d)) (m (oLoc d)) (m (oLoc d)) fs :=
  storeFlight0_congr d L (off_n0_0 L k hk1) (off_n0_1 L k hk1) (off_n0_2 L k hk1) (off_n0_3 L k hk1)
    _ _ _ _ _ _ _ _ _ _ _ _ fs

theorem storeFlight_new1 (k : Fin k0_t1_loop.trips) (hk1 : 1 ≤ k.val) (hc : 4 * (k.val + 1) - 1 < 32) (fs : Buf (Elt F) (sB.view.loc (thr d L))) :
    storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) (m (oLoc d)) (m (oLoc d)) (m (oLoc d)) (m (oLoc d)) fs
      = storeFlight1 (F := F) d L (OW L (4 * (k.val + 1) - 1) 0 hc lt4_0) (OW L (4 * (k.val + 1) - 1) 1 hc lt4_1) (OW L (4 * (k.val + 1) - 1) 2 hc lt4_2) (OW L (4 * (k.val + 1) - 1) 3 hc lt4_3)
          (m (oLoc d)) (m (oLoc d)) (m (oLoc d)) (m (oLoc d)) fs :=
  storeFlight1_congr d L (off_n1_0 L k hk1) (off_n1_1 L k hk1) (off_n1_2 L k hk1) (off_n1_3 L k hk1)
    _ _ _ _ _ _ _ _ _ _ _ _ fs

theorem oWin_drained {o o' : Fin 3 → Nat} (e : o = o') (h : ∀ a, o a + S1x4x1024.size a ≤ S4x4096x1024.size a) (h' : ∀ a, o' a + S1x4x1024.size a ≤ S4x4096x1024.size a)
    (w : S4x1024.Idx → Elt F .f32) :
    (((oWinOf o h).view.loc (thr d L) ↦[(oWinOf o h).view.set]{fullShare} (oWinOf o h).view.writes (Elt F) (oWinOf o h).view.junk [⟨Rect.whole S4x1024, ReadAs.same.apply w⟩]) : sProp 𝕄)
      = ((oWinOf o' h').view.loc (thr d L) ↦[(oWinOf o' h').view.set]{fullShare} (oWinOf o' h').view.writes (Elt F) (oWinOf o' h').view.junk [⟨Rect.whole S4x1024, ReadAs.same.apply w⟩]) := by
  subst e; rfl

theorem outBelow_trip (g : Buf (Elt F) (oLoc d)) (k : ℕ) (hk1 : 1 ≤ k) (hk6 : k < 7) :
    iprop(outBelow d L g (4 * k - 2) ∗ outChunk d L g (4 * k - 2) (by omega) ∗ outChunk d L g (4 * k - 1) (by omega)
        ∗ outChunk d L g (4 * k) (by omega) ∗ outChunk d L g (4 * k + 1) (by omega))
      ⊢ outBelow d L g (4 * (k + 1) - 2) := by
  have e1 : 4 * k - 2 + 1 = 4 * k - 1 := by omega
  have e2 : 4 * k - 1 + 1 = 4 * k := by omega
  have e4 : 4 * k + 1 + 1 = 4 * (k + 1) - 2 := by omega
  iintro ⟨HB, H0, H1, H2, H3⟩
  ihave HB := (Entails.of_eq (outBelow_succ d L g (4 * k - 2) (by omega)).symm) $$ [HB H0]
  · isplitl [HB]; · iexact HB
    iexact H0
  ihave HB := (Entails.of_eq (congrArg (outBelow d L g) e1)) $$ HB
  ihave HB := (Entails.of_eq (outBelow_succ d L g (4 * k - 1) (by omega)).symm) $$ [HB H1]
  · isplitl [HB]; · iexact HB
    iexact H1
  ihave HB := (Entails.of_eq (congrArg (outBelow d L g) e2)) $$ HB
  ihave HB := (Entails.of_eq (outBelow_succ d L g (4 * k) (by omega)).symm) $$ [HB H2]
  · isplitl [HB]; · iexact HB
    iexact H2
  ihave HB := (Entails.of_eq (outBelow_succ d L g (4 * k + 1) (by omega)).symm) $$ [HB H3]
  · isplitl [HB]; · iexact HB
    iexact H3
  iapply (Entails.of_eq (congrArg (outBelow d L g) e4)); iexact HB
end Mid2

section Mid3
variable (m : (ℓ : Loc nD τ sig) → Buf (Elt F) ℓ) (d : Dev nD) (L : grid0.Coords)

theorem flightIn0_def (c : ℕ) (hc : c < 32) :
    flightIn0 m d L c hc = iprop(∃ gp g0 g1 g2 g3, loadFlight (F := F) d L cc0_scratch3.sem pS0 xS00 xS01 xS02 xS03
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightIn1_def (c : ℕ) (hc : c < 32) :
    flightIn1 m d L c hc = iprop(∃ gp g0 g1 g2 g3, loadFlight (F := F) d L cc0_scratch4.sem pS1 xS10 xS11 xS12 xS13
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightIn2_def (c : ℕ) (hc : c < 32) :
    flightIn2 m d L c hc = iprop(∃ gp g0 g1 g2 g3, loadFlight (F := F) d L cc0_scratch5.sem pS2 xS20 xS21 xS22 xS23
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightOut0_def (c : ℕ) (hc : c < 32) :
    flightOut0 m d L c hc = iprop(∃ fs, ⌜staged m d L 0 c hc fs⌝ ∗ storeFlight0 (F := F) d L (OW L c 0 hc lt4_0) (OW L c 1 hc lt4_1) (OW L c 2 hc lt4_2) (OW L c 3 hc lt4_3)
      (m (oLoc d)) (m (oLoc d)) (m (oLoc d)) (m (oLoc d)) fs) := rfl
theorem flightOut1_def (c : ℕ) (hc : c < 32) :
    flightOut1 m d L c hc = iprop(∃ fs, ⌜staged m d L 1 c hc fs⌝ ∗ storeFlight1 (F := F) d L (OW L c 0 hc lt4_0) (OW L c 1 hc lt4_1) (OW L c 2 hc lt4_2) (OW L c 3 hc lt4_3)
      (m (oLoc d)) (m (oLoc d)) (m (oLoc d)) (m (oLoc d)) fs) := rfl
theorem freeSlot3_def :
    freeSlot3 (F := F) d L = iprop((∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
      ∗ (∃ g, xS32.view.loc (thr d L) ↦[xS32.view.set]{fullShare} g) ∗ (∃ g, xS33.view.loc (thr d L) ↦[xS33.view.set]{fullShare} g)
      ∗ semVal (thr d L, SemLoc.dma cc0_scratch6.sem) 0) := rfl

theorem srcFrom_trip (fp : Buf (Elt F) (pLoc d)) (fx : Buf (Elt F) (xLoc d)) (k : Fin k0_t1_loop.trips) (hk6 : k.val < 7) :
    srcFrom d L fp fx (4 * k.val + 3)
      = iprop(iprop(((pWinOf (k0_off11 L k) (k0_off11_inb L k (c1_all k))).view.loc (thr d L) ↦[(pWinOf (k0_off11 L k) (k0_off11_inb L k (c1_all k))).view.set]{rsh} fp) ∗ ((xWinOf (k0_off12 L k) (k0_off12_inb L k (c1_all k))).view.loc (thr d L) ↦[(xWinOf (k0_off12 L k) (k0_off12_inb L k (c1_all k))).view.set]{rsh} fx) ∗ ((xWinOf (k0_off13 L k) (k0_off13_inb L k (c1_all k))).view.loc (thr d L) ↦[(xWinOf (k0_off13 L k) (k0_off13_inb L k (c1_all k))).view.set]{rsh} fx) ∗ ((xWinOf (k0_off14 L k) (k0_off14_inb L k (c1_all k))).view.loc (thr d L) ↦[(xWinOf (k0_off14 L k) (k0_off14_inb L k (c1_all k))).view.set]{rsh} fx) ∗ ((xWinOf (k0_off15 L k) (k0_off15_inb L k (c1_all k))).view.loc (thr d L) ↦[(xWinOf (k0_off15 L k) (k0_off15_inb L k (c1_all k))).view.set]{rsh} fx))
        ∗ iprop(((pWinOf (k0_off600 L k) (k0_off600_inb L k (c3_of k hk6))).view.loc (thr d L) ↦[(pWinOf (k0_off600 L k) (k0_off600_inb L k (c3_of k hk6))).view.set]{rsh} fp) ∗ ((xWinOf (k0_off601 L k) (k0_off601_inb L k (c3_of k hk6))).view.loc (thr d L) ↦[(xWinOf (k0_off601 L k) (k0_off601_inb L k (c3_of k hk6))).view.set]{rsh} fx) ∗ ((xWinOf (k0_off602 L k) (k0_off602_inb L k (c3_of k hk6))).view.loc (thr d L) ↦[(xWinOf (k0_off602 L k) (k0_off602_inb L k (c3_of k hk6))).view.set]{rsh} fx) ∗ ((xWinOf (k0_off603 L k) (k0_off603_inb L k (c3_of k hk6))).view.loc (thr d L) ↦[(xWinOf (k0_off603 L k) (k0_off603_inb L k (c3_of k hk6))).view.set]{rsh} fx) ∗ ((xWinOf (k0_off604 L k) (k0_off604_inb L k (c3_of k hk6))).view.loc (thr d L) ↦[(xWinOf (k0_off604 L k) (k0_off604_inb L k (c3_of k hk6))).view.set]{rsh} fx))
        ∗ iprop(((pWinOf (k0_off1185 L k) (k0_off1185_inb L k (c5_of k hk6))).view.loc (thr d L) ↦[(pWinOf (k0_off1185 L k) (k0_off1185_inb L k (c5_of k hk6))).view.set]{rsh} fp) ∗ ((xWinOf (k0_off1186 L k) (k0_off1186_inb L k (c5_of k hk6))).view.loc (thr d L) ↦[(xWinOf (k0_off1186 L k) (k0_off1186_inb L k (c5_of k hk6))).view.set]{rsh} fx) ∗ ((xWinOf (k0_off1187 L k) (k0_off1187_inb L k (c5_of k hk6))).view.loc (thr d L) ↦[(xWinOf (k0_off1187 L k) (k0_off1187_inb L k (c5_of k hk6))).view.set]{rsh} fx) ∗ ((xWinOf (k0_off1188 L k) (k0_off1188_inb L k (c5_of k hk6))).view.loc (thr d L) ↦[(xWinOf (k0_off1188 L k) (k0_off1188_inb L k (c5_of k hk6))).view.set]{rsh} fx) ∗ ((xWinOf (k0_off1189 L k) (k0_off1189_inb L k (c5_of k hk6))).view.loc (thr d L) ↦[(xWinOf (k0_off1189 L k) (k0_off1189_inb L k (c5_of k hk6))).view.set]{rsh} fx))
        ∗ iprop(((pWinOf (k0_off1766 L k) (k0_off1766_inb L k (c6_of k hk6))).view.loc (thr d L) ↦[(pWinOf (k0_off1766 L k) (k0_off1766_inb L k (c6_of k hk6))).view.set]{rsh} fp) ∗ ((xWinOf (k0_off1767 L k) (k0_off1767_inb L k (c6_of k hk6))).view.loc (thr d L) ↦[(xWinOf (k0_off1767 L k) (k0_off1767_inb L k (c6_of k hk6))).view.set]{rsh} fx) ∗ ((xWinOf (k0_off1768 L k) (k0_off1768_inb L k (c6_of k hk6))).view.loc (thr d L) ↦[(xWinOf (k0_off1768 L k) (k0_off1768_inb L k (c6_of k hk6))).view.set]{rsh} fx) ∗ ((xWinOf (k0_off1769 L k) (k0_off1769_inb L k (c6_of k hk6))).view.loc (thr d L) ↦[(xWinOf (k0_off1769 L k) (k0_off1769_inb L k (c6_of k hk6))).view.set]{rsh} fx) ∗ ((xWinOf (k0_off1770 L k) (k0_off1770_inb L k (c6_of k hk6))).view.loc (thr d L) ↦[(xWinOf (k0_off1770 L k) (k0_off1770_inb L k (c6_of k hk6))).view.set]{rsh} fx))
        ∗ srcFrom d L fp fx (4 * (k.val + 1) + 3)) := by
  have h7 : srcFrom d L fp fx (4 * k.val + 3 + 1 + 1 + 1 + 1) = srcFrom d L fp fx (4 * (k.val + 1) + 3) := congrArg _ (by omega)
  rw [srcFrom_succ d L fp fx (4 * k.val + 3) (by omega), srcFrom_succ d L fp fx (4 * k.val + 3 + 1) (by omega),
    srcFrom_succ d L fp fx (4 * k.val + 3 + 1 + 1) (by omega), srcFrom_succ d L fp fx (4 * k.val + 3 + 1 + 1 + 1) (by omega), h7,
    srcChunk_s0 d L fp fx k hk6 (4 * k.val + 3) rfl, srcChunk_s1 d L fp fx k hk6 (4 * k.val + 3 + 1) (by omega),
    srcChunk_s2 d L fp fx k hk6 (4 * k.val + 3 + 1 + 1) (by omega), srcChunk_s3 d L fp fx k hk6 (4 * k.val + 3 + 1 + 1 + 1) (by omega)]

theorem outFrom_trip (fo : Buf (Elt F) (oLoc d)) (k : Fin k0_t1_loop.trips) :
    outFrom d L fo (4 * k.val)
      = iprop(iprop(((oWinOf (k0_off596 L k 0#32) (k0_off596_inb L k 0)).view.loc (thr d L) ↦[(oWinOf (k0_off596 L k 0#32) (k0_off596_inb L k 0)).view.set]{fullShare} fo) ∗ ((oWinOf (k0_off597 L k 0#32) (k0_off597_inb L k 0)).view.loc (thr d L) ↦[(oWinOf (k0_off597 L k 0#32) (k0_off597_inb L k 0)).view.set]{fullShare} fo) ∗ ((oWinOf (k0_off598 L k 0#32) (k0_off598_inb L k 0)).view.loc (thr d L) ↦[(oWinOf (k0_off598 L k 0#32) (k0_off598_inb L k 0)).view.set]{fullShare} fo) ∗ ((oWinOf (k0_off599 L k 0#32) (k0_off599_inb L k 0)).view.loc (thr d L) ↦[(oWinOf (k0_off599 L k 0#32) (k0_off599_inb L k 0)).view.set]{fullShare} fo))
        ∗ iprop(((oWinOf (k0_off596 L k 1#32) (k0_off596_inb L k 1)).view.loc (thr d L) ↦[(oWinOf (k0_off596 L k 1#32) (k0_off596_inb L k 1)).view.set]{fullShare} fo) ∗ ((oWinOf (k0_off597 L k 1#32) (k0_off597_inb L k 1)).view.loc (thr d L) ↦[(oWinOf (k0_off597 L k 1#32) (k0_off597_inb L k 1)).view.set]{fullShare} fo) ∗ ((oWinOf (k0_off598 L k 1#32) (k0_off598_inb L k 1)).view.loc (thr d L) ↦[(oWinOf (k0_off598 L k 1#32) (k0_off598_inb L k 1)).view.set]{fullShare} fo) ∗ ((oWinOf (k0_off599 L k 1#32) (k0_off599_inb L k 1)).view.loc (thr d L) ↦[(oWinOf (k0_off599 L k 1#32) (k0_off599_inb L k 1)).view.set]{fullShare} fo))
        ∗ iprop(((oWinOf (k0_off596 L k 2#32) (k0_off596_inb L k 2)).view.loc (thr d L) ↦[(oWinOf (k0_off596 L k 2#32) (k0_off596_inb L k 2)).view.set]{fullShare} fo) ∗ ((oWinOf (k0_off597 L k 2#32) (k0_off597_inb L k 2)).view.loc (thr d L) ↦[(oWinOf (k0_off597 L k 2#32) (k0_off597_inb L k 2)).view.set]{fullShare} fo) ∗ ((oWinOf (k0_off598 L k 2#32) (k0_off598_inb L k 2)).view.loc (thr d L) ↦[(oWinOf (k0_off598 L k 2#32) (k0_off598_inb L k 2)).view.set]{fullShare} fo) ∗ ((oWinOf (k0_off599 L k 2#32) (k0_off599_inb L k 2)).view.loc (thr d L) ↦[(oWinOf (k0_off599 L k 2#32) (k0_off599_inb L k 2)).view.set]{fullShare} fo))
        ∗ iprop(((oWinOf (k0_off596 L k 3#32) (k0_off596_inb L k 3)).view.loc (thr d L) ↦[(oWinOf (k0_off596 L k 3#32) (k0_off596_inb L k 3)).view.set]{fullShare} fo) ∗ ((oWinOf (k0_off597 L k 3#32) (k0_off597_inb L k 3)).view.loc (thr d L) ↦[(oWinOf (k0_off597 L k 3#32) (k0_off597_inb L k 3)).view.set]{fullShare} fo) ∗ ((oWinOf (k0_off598 L k 3#32) (k0_off598_inb L k 3)).view.loc (thr d L) ↦[(oWinOf (k0_off598 L k 3#32) (k0_off598_inb L k 3)).view.set]{fullShare} fo) ∗ ((oWinOf (k0_off599 L k 3#32) (k0_off599_inb L k 3)).view.loc (thr d L) ↦[(oWinOf (k0_off599 L k 3#32) (k0_off599_inb L k 3)).view.set]{fullShare} fo))
        ∗ outFrom d L fo (4 * (k.val + 1))) := by
  have hk8 := trip_lt k
  have h4 : outFrom d L fo (4 * k.val + 1 + 1 + 1 + 1) = outFrom d L fo (4 * (k.val + 1)) := congrArg _ (by omega)
  rw [outFrom_succ d L fo (4 * k.val) (by omega), outFrom_succ d L fo (4 * k.val + 1) (by omega),
    outFrom_succ d L fo (4 * k.val + 1 + 1) (by omega), outFrom_succ d L fo (4 * k.val + 1 + 1 + 1) (by omega), h4,
    outChunk_s0 d L fo k (4 * k.val) (by omega), outChunk_s1 d L fo k (4 * k.val + 1) rfl,
    outChunk_s2 d L fo k (4 * k.val + 1 + 1) (by omega), outChunk_s3 d L fo k (4 * k.val + 1 + 1 + 1) (by omega)]

theorem xWin_read {o : Fin 3 → Nat} (h : ∀ a, o a + S1x4x1024.size a ≤ S4x4096x1024.size a) (c b : ℕ) (hc : c < 32) (hb : b < 4) (e : o = ![b, r0 L + 4 * c, 0])
    (X : S4x4096x1024.Idx → F .f32) (j : Fin 4) (l : Fin 1024) :
    (xWinOf o h).view.read (Elt F) X (ix2 j l) = X (ix3 (⟨b, hb⟩ : Fin 4) (⟨r0 L + 4 * c + j.val, win_row_lt L c hc j⟩ : Fin 4096) l) := by
  subst e; exact XW_read L c b hc hb X j l
theorem pWin_read {o : Fin 2 → Nat} (h : ∀ a, o a + S4x1024.size a ≤ S4096x1024.size a) (c : ℕ) (hc : c < 32) (e : o = ![r0 L + 4 * c, 0])
    (X : S4096x1024.Idx → F .f32) (j : Fin 4) (l : Fin 1024) :
    (pWinOf o h).view.read (Elt F) X (ix2 j l) = X (ix2 (⟨r0 L + 4 * c + j.val, win_row_lt L c hc j⟩ : Fin 4096) l) := by
  subst e; exact PW_read L c hc X j l
theorem XW_read' (c c' b : ℕ) (hc : c < 32) (hc' : c' < 32) (hb : b < 4) (e : c = c') (X : S4x4096x1024.Idx → F .f32) (j : Fin 4) (l : Fin 1024) :
    (XW L c b hc hb).view.read (Elt F) X (ix2 j l) = X (ix3 (⟨b, hb⟩ : Fin 4) (⟨r0 L + 4 * c' + j.val, win_row_lt L c' hc' j⟩ : Fin 4096) l) := by
  subst e; exact XW_read L c b hc hb X j l
theorem PW_read' (c c' : ℕ) (hc : c < 32) (hc' : c' < 32) (e : c = c') (X : S4096x1024.Idx → F .f32) (j : Fin 4) (l : Fin 1024) :
    (PW L c hc).view.read (Elt F) X (ix2 j l) = X (ix2 (⟨r0 L + 4 * c' + j.val, win_row_lt L c' hc' j⟩ : Fin 4096) l) := by
  subst e; exact PW_read L c hc X j l
end Mid3

set_option maxHeartbeats 4000000 in
theorem region_mid (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk1 : 1 ≤ k.val) (hk6 : k.val < 7)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk8 : k.val < 8 := trip_lt k
  unfold Inv
  rw [loadPart_lt m d L k.val hk8, storePart_mid m d L k.val (by omega) (by omega),
    loadPart_lt m d L (k.val + 1) (by omega), storePart_mid m d L (k.val + 1) (by omega) (by omega),
    srcFrom_trip d L (mp m d) (m (xLoc d)) k hk6, outFrom_trip d L (m (oLoc d)) k]
  iintro ⟨Hmw, ⟨%W', %hW', HO⟩, ⟨HF0, HF1, HF2, Hfree⟩,
    ⟨⟨HQ0, HY00, HY01, HY02, HY03⟩, ⟨HQ1, HY10, HY11, HY12, HY13⟩, ⟨HQ2, HY20, HY21, HY22, HY23⟩, ⟨HQ3, HY30, HY31, HY32, HY33⟩, Hsrc⟩,
    ⟨HC0, HC1⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  ihave HC0 := (Entails.of_eq (flightOut0_def m d L _ _)) $$ HC0
  icases HC0 with ⟨%fsa, %hsta, HC0⟩
  ihave HC1 := (Entails.of_eq (flightOut1_def m d L _ _)) $$ HC1
  icases HC1 with ⟨%fsb, %hstb, HC1⟩
  iapply (wp_wand_r frame (wpE (defs₀ (F := F)) 𝒱₀ (thr d L) none) Set.univ)
  isplitl [Hmw HP3 HX30 HX31 HX32 HX33 HF0 HF1 HF2 HC0 HC1 HQ0 HY00 HY01 HY02 HY03 HQ1 HY10 HY11 HY12 HY13 HQ2 HY20 HY21 HY22 HY23 HQ3 HY30 HY31 HY32 HY33 HO00 HO01 HO02 HO03 HO10 HO11 HO12 HO13 HO20 HO21 HO22 HO23 HO30 HO31 HO32 HO33 Hs6 HO]
  · iapply (tripMid (F := F) d L rsh O W' v2 k hk1 hk6 _ _ _ _ _ _ _ _ _ _ _ _ _ _ _ _ _ _ _ _ _ _ _
      _ _ _ _ _ _ _ _ _ _ _ _ _ _ _ _ _ _ _ _ _ _ _
      (m (xLoc d)) (mp m d) (m (oLoc d)) fsa fsb gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [HC0]; · iexact HC0
    isplitl [HC1]; · iexact HC1
    isplitl [HQ0]; · iexact HQ0
    isplitl [HY00]; · iexact HY00
    isplitl [HY01]; · iexact HY01
    isplitl [HY02]; · iexact HY02
    isplitl [HY03]; · iexact HY03
    isplitl [HQ1]; · iexact HQ1
    isplitl [HY10]; · iexact HY10
    isplitl [HY11]; · iexact HY11
    isplitl [HY12]; · iexact HY12
    isplitl [HY13]; · iexact HY13
    isplitl [HQ2]; · iexact HQ2
    isplitl [HY20]; · iexact HY20
    isplitl [HY21]; · iexact HY21
    isplitl [HY22]; · iexact HY22
    isplitl [HY23]; · iexact HY23
    isplitl [HQ3]; · iexact HQ3
    isplitl [HY30]; · iexact HY30
    isplitl [HY31]; · iexact HY31
    isplitl [HY32]; · iexact HY32
    isplitl [HY33]; · iexact HY33
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, HN0, HN1, HN2, HP3, HX30, HX31, HX32, HX33, Hs6, ⟨%fs2, %hv2, HSF0⟩, ⟨%fs3, %hv3, HSF1⟩,
    HD00, HD01, HD02, HD03, HD10, HD11, HD12, HD13, ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [HN0 HN1 HN2 HP3 HX30 HX31 HX32 HX33 Hs6]
  · isplitl [HN0]; · iapply (Entails.of_eq (flightIn_new0 m d L k hk6 _)); iexact HN0
    isplitl [HN1]; · iapply (Entails.of_eq (flightIn_new1 m d L k hk6 _)); iexact HN1
    isplitl [HN2]; · iapply (Entails.of_eq (flightIn_new2 m d L k hk6 _)); iexact HN2
    iapply (Entails.of_eq (freeSlot3_def d L).symm)
    isplitl [HP3]; · iexact HP3
    isplitl [HX30]; · iexact HX30
    isplitl [HX31]; · iexact HX31
    isplitl [HX32]; · iexact HX32
    isplitl [HX33]; · iexact HX33
    iexact Hs6
  isplitl [Hsrc]; · iexact Hsrc
  isplitl [HSF0 HSF1]
  · isplitl [HSF0]
    · iapply (Entails.of_eq (flightOut0_def m d L _ _).symm)
      iexists fs2; isplitr
      · ipureintro; exact hst2
      · iapply (Entails.of_eq (storeFlight_new0 m d L k hk1 _ fs2)); iexact HSF0
    · iapply (Entails.of_eq (flightOut1_def m d L _ _).symm)
      iexists fs3; isplitr
      · ipureintro; exact hst3
      · iapply (Entails.of_eq (storeFlight_new1 m d L k hk1 _ fs3)); iexact HSF1
  isplitl [Hout]; · iexact Hout
  iapply (outBelow_trip d L (mres m d) k.val hk1 hk6)
  isplitl [Hbel]; · iexact Hbel
  isplitl [HD00 HD01 HD02 HD03]
  · iapply (out_done0 m d L (4 * k.val - 2) _ fsa hsta)
    isplitl [HD00]; · iexact HD00
    isplitl [HD01]; · iexact HD01
    isplitl [HD02]; · iexact HD02
    iexact HD03
  isplitl [HD10 HD11 HD12 HD13]
  · iapply (out_done1 m d L (4 * k.val - 1) _ fsb hstb)
    isplitl [HD10]; · iexact HD10
    isplitl [HD11]; · iexact HD11
    isplitl [HD12]; · iexact HD12
    iexact HD13
  isplitl [HW00 HW01 HW02 HW03]
  · iapply (out_done0 m d L (4 * k.val) _ fs0 hst0)
    isplitl [HW00]; · iapply (Entails.of_eq (oWin_drained d L (off_w0_0 L k hk1) _ _ _)); iexact HW00
    isplitl [HW01]; · iapply (Entails.of_eq (oWin_drained d L (off_w0_1 L k hk1) _ _ _)); iexact HW01
    isplitl [HW02]; · iapply (Entails.of_eq (oWin_drained d L (off_w0_2 L k hk1) _ _ _)); iexact HW02
    iapply (Entails.of_eq (oWin_drained d L (off_w0_3 L k hk1) _ _ _)); iexact HW03
  · iapply (out_done1 m d L (4 * k.val + 1) _ fs1 hst1)
    isplitl [HW10]; · iapply (Entails.of_eq (oWin_drained d L (off_w1_0 L k hk1) _ _ _)); iexact HW10
    isplitl [HW11]; · iapply (Entails.of_eq (oWin_drained d L (off_w1_1 L k hk1) _ _ _)); iexact HW11
    isplitl [HW12]; · iapply (Entails.of_eq (oWin_drained d L (off_w1_2 L k hk1) _ _ _)); iexact HW12
    iapply (Entails.of_eq (oWin_drained d L (off_w1_3 L k hk1) _ _ _)); iexact HW13

end Cert.Proof.KI

end
-- ==== Proof.KTrip0.lean ====
import proofs.«210091_g81140522156176_cont_9to1_m_468_11_alg».proof.Proof.KTrip

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 16000000 in
set_option maxRecDepth 65536 in
theorem trip0 (d : Dev nD) (L : grid0.Coords) (q : PosShare TreeShare) (O : CellTallies nD τ sig (HIx 1)) (W : Waits sig (HIx 1)) (v2 : BitVec 32)
    (k : Fin k0_t1_loop.trips) (hk0 : k.val = 0)
    (iP0 iX00 iX01 iX02 iX03 iP1 iX10 iX11 iX12 iX13 iP2 iX20 iX21 iX22 iX23 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L)))
    (fx : Buf (Elt F) (xLoc d)) (fp : Buf (Elt F) (pLoc d)) (fo : Buf (Elt F) (oLoc d))
    (f : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    let h3 := c3_of k (by omega)
    let h5 := c5_of k (by omega)
    let h6 := c6_of k (by omega)
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ semVal (thr d L, SemLoc.dma cc0_scratch7.sem) 0
        ∗ semVal (thr d L, SemLoc.dma cc0_scratch8.sem) 0
        ∗ (sB.view.loc (thr d L) ↦{fullShare} f)
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((pWinOf (k0_off600 L k) (k0_off600_inb L k h3)).view.loc (thr d L) ↦[(pWinOf (k0_off600 L k) (k0_off600_inb L k h3)).view.set]{q} fp)
        ∗ ((xWinOf (k0_off601 L k) (k0_off601_inb L k h3)).view.loc (thr d L) ↦[(xWinOf (k0_off601 L k) (k0_off601_inb L k h3)).view.set]{q} fx)
        ∗ ((xWinOf (k0_off602 L k) (k0_off602_inb L k h3)).view.loc (thr d L) ↦[(xWinOf (k0_off602 L k) (k0_off602_inb L k h3)).view.set]{q} fx)
        ∗ ((xWinOf (k0_off603 L k) (k0_off603_inb L k h3)).view.loc (thr d L) ↦[(xWinOf (k0_off603 L k) (k0_off603_inb L k h3)).view.set]{q} fx)
        ∗ ((xWinOf (k0_off604 L k) (k0_off604_inb L k h3)).view.loc (thr d L) ↦[(xWinOf (k0_off604 L k) (k0_off604_inb L k h3)).view.set]{q} fx)
        ∗ ((pWinOf (k0_off1185 L k) (k0_off1185_inb L k h5)).view.loc (thr d L) ↦[(pWinOf (k0_off1185 L k) (k0_off1185_inb L k h5)).view.set]{q} fp)
        ∗ ((xWinOf (k0_off1186 L k) (k0_off1186_inb L k h5)).view.loc (thr d L) ↦[(xWinOf (k0_off1186 L k) (k0_off1186_inb L k h5)).view.set]{q} fx)
        ∗ ((xWinOf (k0_off1187 L k) (k0_off1187_inb L k h5)).view.loc (thr d L) ↦[(xWinOf (k0_off1187 L k) (k0_off1187_inb L k h5)).view.set]{q} fx)
        ∗ ((xWinOf (k0_off1188 L k) (k0_off1188_inb L k h5)).view.loc (thr d L) ↦[(xWinOf (k0_off1188 L k) (k0_off1188_inb L k h5)).view.set]{q} fx)
        ∗ ((xWinOf (k0_off1189 L k) (k0_off1189_inb L k h5)).view.loc (thr d L) ↦[(xWinOf (k0_off1189 L k) (k0_off1189_inb L k h5)).view.set]{q} fx)
        ∗ ((pWinOf (k0_off1766 L k) (k0_off1766_inb L k h6)).view.loc (thr d L) ↦[(pWinOf (k0_off1766 L k) (k0_off1766_inb L k h6)).view.set]{q} fp)
        ∗ ((xWinOf (k0_off1767 L k) (k0_off1767_inb L k h6)).view.loc (thr d L) ↦[(xWinOf (k0_off1767 L k) (k0_off1767_inb L k h6)).view.set]{q} fx)
        ∗ ((xWinOf (k0_off1768 L k) (k0_off1768_inb L k h6)).view.loc (thr d L) ↦[(xWinOf (k0_off1768 L k) (k0_off1768_inb L k h6)).view.set]{q} fx)
        ∗ ((xWinOf (k0_off1769 L k) (k0_off1769_inb L k h6)).view.loc (thr d L) ↦[(xWinOf (k0_off1769 L k) (k0_off1769_inb L k h6)).view.set]{q} fx)
        ∗ ((xWinOf (k0_off1770 L k) (k0_off1770_inb L k h6)).view.loc (thr d L) ↦[(xWinOf (k0_off1770 L k) (k0_off1770_inb L k h6)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ gp g0 g1 g2 g3, loadFlight (F := F) d L cc0_scratch3.sem pS0 xS00 xS01 xS02 xS03 (pWinOf (k0_off600 L k) (k0_off600_inb L k h3)) (xWinOf (k0_off601 L k) (k0_off601_inb L k h3)) (xWinOf (k0_off602 L k) (k0_off602_inb L k h3)) (xWinOf (k0_off603 L k) (k0_off603_inb L k h3)) (xWinOf (k0_off604 L k) (k0_off604_inb L k h3)) q fp fx fx fx fx gp g0 g1 g2 g3)
            ∗ (∃ gp g0 g1 g2 g3, loadFlight (F := F) d L cc0_scratch4.sem pS1 xS10 xS11 xS12 xS13 (pWinOf (k0_off1185 L k) (k0_off1185_inb L k h5)) (xWinOf (k0_off1186 L k) (k0_off1186_inb L k h5)) (xWinOf (k0_off1187 L k) (k0_off1187_inb L k h5)) (xWinOf (k0_off1188 L k) (k0_off1188_inb L k h5)) (xWinOf (k0_off1189 L k) (k0_off1189_inb L k h5)) q fp fx fx fx fx gp g0 g1 g2 g3)
            ∗ (∃ gp g0 g1 g2 g3, loadFlight (F := F) d L cc0_scratch5.sem pS2 xS20 xS21 xS22 xS23 (pWinOf (k0_off1766 L k) (k0_off1766_inb L k h6)) (xWinOf (k0_off1767 L k) (k0_off1767_inb L k h6)) (xWinOf (k0_off1768 L k) (k0_off1768_inb L k h6)) (xWinOf (k0_off1769 L k) (k0_off1769_inb L k h6)) (xWinOf (k0_off1770 L k) (k0_off1770_inb L k h6)) q fp fx fx fx fx gp g0 g1 g2 g3)
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1 h3 h5 h6
  have hk8 : k.val < 8 := Nat.lt_of_lt_of_le k.isLt k0_t1_abs.2.1
  have h2 := c2_not k hk0
  have h4 := c4_not k hk0
  unfold k0_t1_body loadFlight storeFlight0 storeFlight1 dlv pWinOf xWinOf oWinOf lnd
  iintro ⟨Hmw, HP3, HX30, HX31, HX32, HX33, HB0, HB1, HB2, Hs7, Hs8, HSB, HQ0, HY00, HY01, HY02, HY03, HQ1, HY10, HY11, HY12, HY13, HQ2, HY20, HY21, HY22, HY23, HQ3, HY30, HY31, HY32, HY33, HO00, HO01, HO02, HO03, HO10, HO11, HO12, HO13, HO20, HO21, HO22, HO23, HO30, HO31, HO32, HO33, Hs6, HO⟩
  sl_exec_parts
  sl_for (innerInv0W (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 HSB]
  case region =>
    intro j acc
    exact inner0W_region d L _ _ _ _ _ _ _ _ _ j acc
  · unfold innerInv0W
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [HSB]; · iexact HSB
    ipureintro; intro b l j' hj; exact absurd hj (Nat.not_lt_zero _)
  iintro %_ HI
  unfold innerInv0W
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_slots (F := F) d (cV L) (jV L) fs0)) $$ H2
  icases HSl with ⟨HS00, HS01, HS02, HS03, HS10, HS11, HS12, HS13⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HB0]; · iexists _, _, _, _, _; iexact HB0
  isplitl [HB1]; · iexists _, _, _, _, _; iexact HB1
  isplitl [HB2]; · iexists _, _, _, _, _; iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [Hs7]
  · iexists _
    isplitl []
    · ipureintro; exact hv2
    · iexact Hs7
  isplitl [Hs8]
  · iexists _
    isplitl []
    · ipureintro; exact hv3
    · iexact Hs8
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KI

end
-- ==== Proof.KRegion0L.lean ====
import proofs.«210091_g81140522156176_cont_9to1_m_468_11_alg».proof.Proof.KRegion
import proofs.«210091_g81140522156176_cont_9to1_m_468_11_alg».proof.Proof.KTrip0

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

theorem off0_n0_0 (L : grid0.Coords) (k : Fin k0_t1_loop.trips) :
    k0_off596 L k 2#32 = ![0, r0 L + 4 * (4 * (k.val + 1) - 2), 0] := by
  have hs : ((2 : Fin 4).val) = 2 := rfl
  refine (k0_off596_eq L k 2).trans (vec3_congr 0 ?_)
  rw [r0_def, hs]; omega
theorem off0_n0_1 (L : grid0.Coords) (k : Fin k0_t1_loop.trips) :
    k0_off597 L k 2#32 = ![1, r0 L + 4 * (4 * (k.val + 1) - 2), 0] := by
  have hs : ((2 : Fin 4).val) = 2 := rfl
  refine (k0_off597_eq L k 2).trans (vec3_congr 1 ?_)
  rw [r0_def, hs]; omega
theorem off0_n0_2 (L : grid0.Coords) (k : Fin k0_t1_loop.trips) :
    k0_off598 L k 2#32 = ![2, r0 L + 4 * (4 * (k.val + 1) - 2), 0] := by
  have hs : ((2 : Fin 4).val) = 2 := rfl
  refine (k0_off598_eq L k 2).trans (vec3_congr 2 ?_)
  rw [r0_def, hs]; omega
theorem off0_n0_3 (L : grid0.Coords) (k : Fin k0_t1_loop.trips) :
    k0_off599 L k 2#32 = ![3, r0 L + 4 * (4 * (k.val + 1) - 2), 0] := by
  have hs : ((2 : Fin 4).val) = 2 := rfl
  refine (k0_off599_eq L k 2).trans (vec3_congr 3 ?_)
  rw [r0_def, hs]; omega
theorem off0_n1_0 (L : grid0.Coords) (k : Fin k0_t1_loop.trips) :
    k0_off596 L k 3#32 = ![0, r0 L + 4 * (4 * (k.val + 1) - 1), 0] := by
  have hs : ((3 : Fin 4).val) = 3 := rfl
  refine (k0_off596_eq L k 3).trans (vec3_congr 0 ?_)
  rw [r0_def, hs]; omega
theorem off0_n1_1 (L : grid0.Coords) (k : Fin k0_t1_loop.trips) :
    k0_off597 L k 3#32 = ![1, r0 L + 4 * (4 * (k.val + 1) - 1), 0] := by
  have hs : ((3 : Fin 4).val) = 3 := rfl
  refine (k0_off597_eq L k 3).trans (vec3_congr 1 ?_)
  rw [r0_def, hs]; omega
theorem off0_n1_2 (L : grid0.Coords) (k : Fin k0_t1_loop.trips) :
    k0_off598 L k 3#32 = ![2, r0 L + 4 * (4 * (k.val + 1) - 1), 0] := by
  have hs : ((3 : Fin 4).val) = 3 := rfl
  refine (k0_off598_eq L k 3).trans (vec3_congr 2 ?_)
  rw [r0_def, hs]; omega
theorem off0_n1_3 (L : grid0.Coords) (k : Fin k0_t1_loop.trips) :
    k0_off599 L k 3#32 = ![3, r0 L + 4 * (4 * (k.val + 1) - 1), 0] := by
  have hs : ((3 : Fin 4).val) = 3 := rfl
  refine (k0_off599_eq L k 3).trans (vec3_congr 3 ?_)
  rw [r0_def, hs]; omega
theorem off0_w0_0 (L : grid0.Coords) (k : Fin k0_t1_loop.trips) :
    k0_off596 L k 0#32 = ![0, r0 L + 4 * (4 * k.val), 0] := by
  have hs : ((0 : Fin 4).val) = 0 := rfl
  refine (k0_off596_eq L k 0).trans (vec3_congr 0 ?_)
  rw [r0_def, hs]; omega
theorem off0_w0_1 (L : grid0.Coords) (k : Fin k0_t1_loop.trips) :
    k0_off597 L k 0#32 = ![1, r0 L + 4 * (4 * k.val), 0] := by
  have hs : ((0 : Fin 4).val) = 0 := rfl
  refine (k0_off597_eq L k 0).trans (vec3_congr 1 ?_)
  rw [r0_def, hs]; omega
theorem off0_w0_2 (L : grid0.Coords) (k : Fin k0_t1_loop.trips) :
    k0_off598 L k 0#32 = ![2, r0 L + 4 * (4 * k.val), 0] := by
  have hs : ((0 : Fin 4).val) = 0 := rfl
  refine (k0_off598_eq L k 0).trans (vec3_congr 2 ?_)
  rw [r0_def, hs]; omega
theorem off0_w0_3 (L : grid0.Coords) (k : Fin k0_t1_loop.trips) :
    k0_off599 L k 0#32 = ![3, r0 L + 4 * (4 * k.val), 0] := by
  have hs : ((0 : Fin 4).val) = 0 := rfl
  refine (k0_off599_eq L k 0).trans (vec3_congr 3 ?_)
  rw [r0_def, hs]; omega
theorem off0_w1_0 (L : grid0.Coords) (k : Fin k0_t1_loop.trips) :
    k0_off596 L k 1#32 = ![0, r0 L + 4 * (4 * k.val + 1), 0] := by
  have hs : ((1 : Fin 4).val) = 1 := rfl
  refine (k0_off596_eq L k 1).trans (vec3_congr 0 ?_)
  rw [r0_def, hs]; omega
theorem off0_w1_1 (L : grid0.Coords) (k : Fin k0_t1_loop.trips) :
    k0_off597 L k 1#32 = ![1, r0 L + 4 * (4 * k.val + 1), 0] := by
  have hs : ((1 : Fin 4).val) = 1 := rfl
  refine (k0_off597_eq L k 1).trans (vec3_congr 1 ?_)
  rw [r0_def, hs]; omega
theorem off0_w1_2 (L : grid0.Coords) (k : Fin k0_t1_loop.trips) :
    k0_off598 L k 1#32 = ![2, r0 L + 4 * (4 * k.val + 1), 0] := by
  have hs : ((1 : Fin 4).val) = 1 := rfl
  refine (k0_off598_eq L k 1).trans (vec3_congr 2 ?_)
  rw [r0_def, hs]; omega
theorem off0_w1_3 (L : grid0.Coords) (k : Fin k0_t1_loop.trips) :
    k0_off599 L k 1#32 = ![3, r0 L + 4 * (4 * k.val + 1), 0] := by
  have hs : ((1 : Fin 4).val) = 1 := rfl
  refine (k0_off599_eq L k 1).trans (vec3_congr 3 ?_)
  rw [r0_def, hs]; omega

section First
variable (m : (ℓ : Loc nD τ sig) → Buf (Elt F) ℓ) (d : Dev nD) (L : grid0.Coords)

theorem storePart_zero (g : ℕ) (h : g = 0) :
    storePart m d L g = iprop(semVal (thr d L, SemLoc.dma cc0_scratch7.sem) 0 ∗ semVal (thr d L, SemLoc.dma cc0_scratch8.sem) 0 ∗ ∃ f, sB.view.loc (thr d L) ↦{fullShare} f) := by
  unfold storePart; rw [dif_pos h]

theorem storeFlight0_new0 (k : Fin k0_t1_loop.trips) (hc : 4 * (k.val + 1) - 2 < 32) (fs : Buf (Elt F) (sB.view.loc (thr d L))) :
    storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) (m (oLoc d)) (m (oLoc d)) (m (oLoc d)) (m (oLoc d)) fs
      = storeFlight0 (F := F) d L (OW L (4 * (k.val + 1) - 2) 0 hc lt4_0) (OW L (4 * (k.val + 1) - 2) 1 hc lt4_1) (OW L (4 * (k.val + 1) - 2) 2 hc lt4_2) (OW L (4 * (k.val + 1) - 2) 3 hc lt4_3)
          (m (oLoc d)) (m (oLoc d)) (m (oLoc d)) (m (oLoc d)) fs :=
  storeFlight0_congr d L (off0_n0_0 L k) (off0_n0_1 L k) (off0_n0_2 L k) (off0_n0_3 L k)
    _ _ _ _ _ _ _ _ _ _ _ _ fs
theorem storeFlight0_new1 (k : Fin k0_t1_loop.trips) (hc : 4 * (k.val + 1) - 1 < 32) (fs : Buf (Elt F) (sB.view.loc (thr d L))) :
    storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) (m (oLoc d)) (m (oLoc d)) (m (oLoc d)) (m (oLoc d)) fs
      = storeFlight1 (F := F) d L (OW L (4 * (k.val + 1) - 1) 0 hc lt4_0) (OW L (4 * (k.val + 1) - 1) 1 hc lt4_1) (OW L (4 * (k.val + 1) - 1) 2 hc lt4_2) (OW L (4 * (k.val + 1) - 1) 3 hc lt4_3)
          (m (oLoc d)) (m (oLoc d)) (m (oLoc d)) (m (oLoc d)) fs :=
  storeFlight1_congr d L (off0_n1_0 L k) (off0_n1_1 L k) (off0_n1_2 L k) (off0_n1_3 L k)
    _ _ _ _ _ _ _ _ _ _ _ _ fs

theorem outBelow_trip0 (g : Buf (Elt F) (oLoc d)) (k : ℕ) (hk0 : k = 0) :
    iprop(outBelow d L g (4 * k - 2) ∗ outChunk d L g (4 * k) (by omega) ∗ outChunk d L g (4 * k + 1) (by omega))
      ⊢ outBelow d L g (4 * (k + 1) - 2) := by
  subst hk0
  iintro ⟨HB, H0, H1⟩
  ihave HB := (Entails.of_eq (outBelow_succ d L g 0 (by omega)).symm) $$ [HB H0]
  · isplitl [HB]; · iexact HB
    iexact H0
  ihave HB := (Entails.of_eq (outBelow_succ d L g 1 (by omega)).symm) $$ [HB H1]
  · isplitl [HB]; · iexact HB
    iexact H1
  iexact HB
end First

set_option maxHeartbeats 4000000 in
theorem region_0 (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk0 : k.val = 0)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk6 : k.val < 7 := by omega
  have hk8 : k.val < 8 := by omega
  unfold Inv
  rw [loadPart_lt m d L k.val hk8, storePart_zero m d L k.val hk0,
    loadPart_lt m d L (k.val + 1) (by omega), storePart_mid m d L (k.val + 1) (by omega) (by omega),
    srcFrom_trip d L (mp m d) (m (xLoc d)) k hk6, outFrom_trip d L (m (oLoc d)) k]
  iintro ⟨Hmw, ⟨%W', %hW', HO⟩, ⟨HF0, HF1, HF2, Hfree⟩,
    ⟨⟨HQ0, HY00, HY01, HY02, HY03⟩, ⟨HQ1, HY10, HY11, HY12, HY13⟩, ⟨HQ2, HY20, HY21, HY22, HY23⟩, ⟨HQ3, HY30, HY31, HY32, HY33⟩, Hsrc⟩,
    ⟨Hs7, Hs8, ⟨%f, Hsb⟩⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  iapply (wp_wand_r frame (wpE (defs₀ (F := F)) 𝒱₀ (thr d L) none) Set.univ)
  isplitl [Hmw HP3 HX30 HX31 HX32 HX33 HF0 HF1 HF2 Hs7 Hs8 Hsb HQ0 HY00 HY01 HY02 HY03 HQ1 HY10 HY11 HY12 HY13 HQ2 HY20 HY21 HY22 HY23 HQ3 HY30 HY31 HY32 HY33 HO00 HO01 HO02 HO03 HO10 HO11 HO12 HO13 HO20 HO21 HO22 HO23 HO30 HO31 HO32 HO33 Hs6 HO]
  · iapply (trip0 (F := F) d L rsh O W' v2 k hk0 _ _ _ _ _ _ _ _ _ _ _ _ _ _ _
      _ _ _ _ _ _ _ _ _ _ _ _ _ _ _
      (m (xLoc d)) (mp m d) (m (oLoc d)) f gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [Hs7]; · iexact Hs7
    isplitl [Hs8]; · iexact Hs8
    isplitl [Hsb]; · iexact Hsb
    isplitl [HQ0]; · iexact HQ0
    isplitl [HY00]; · iexact HY00
    isplitl [HY01]; · iexact HY01
    isplitl [HY02]; · iexact HY02
    isplitl [HY03]; · iexact HY03
    isplitl [HQ1]; · iexact HQ1
    isplitl [HY10]; · iexact HY10
    isplitl [HY11]; · iexact HY11
    isplitl [HY12]; · iexact HY12
    isplitl [HY13]; · iexact HY13
    isplitl [HQ2]; · iexact HQ2
    isplitl [HY20]; · iexact HY20
    isplitl [HY21]; · iexact HY21
    isplitl [HY22]; · iexact HY22
    isplitl [HY23]; · iexact HY23
    isplitl [HQ3]; · iexact HQ3
    isplitl [HY30]; · iexact HY30
    isplitl [HY31]; · iexact HY31
    isplitl [HY32]; · iexact HY32
    isplitl [HY33]; · iexact HY33
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, HN0, HN1, HN2, HP3, HX30, HX31, HX32, HX33, Hs6, ⟨%fs2, %hv2, HSF0⟩, ⟨%fs3, %hv3, HSF1⟩,
    ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [HN0 HN1 HN2 HP3 HX30 HX31 HX32 HX33 Hs6]
  · isplitl [HN0]; · iapply (Entails.of_eq (flightIn_new0 m d L k hk6 _)); iexact HN0
    isplitl [HN1]; · iapply (Entails.of_eq (flightIn_new1 m d L k hk6 _)); iexact HN1
    isplitl [HN2]; · iapply (Entails.of_eq (flightIn_new2 m d L k hk6 _)); iexact HN2
    iapply (Entails.of_eq (freeSlot3_def d L).symm)
    isplitl [HP3]; · iexact HP3
    isplitl [HX30]; · iexact HX30
    isplitl [HX31]; · iexact HX31
    isplitl [HX32]; · iexact HX32
    isplitl [HX33]; · iexact HX33
    iexact Hs6
  isplitl [Hsrc]; · iexact Hsrc
  isplitl [HSF0 HSF1]
  · isplitl [HSF0]
    · iapply (Entails.of_eq (flightOut0_def m d L _ _).symm)
      iexists fs2; isplitr
      · ipureintro; exact hst2
      · iapply (Entails.of_eq (storeFlight0_new0 m d L k _ fs2)); iexact HSF0
    · iapply (Entails.of_eq (flightOut1_def m d L _ _).symm)
      iexists fs3; isplitr
      · ipureintro; exact hst3
      · iapply (Entails.of_eq (storeFlight0_new1 m d L k _ fs3)); iexact HSF1
  isplitl [Hout]; · iexact Hout
  iapply (outBelow_trip0 d L (mres m d) k.val hk0)
  isplitl [Hbel]; · iexact Hbel
  isplitl [HW00 HW01 HW02 HW03]
  · iapply (out_done0 m d L (4 * k.val) _ fs0 hst0)
    isplitl [HW00]; · iapply (Entails.of_eq (oWin_drained d L (off0_w0_0 L k) _ _ _)); iexact HW00
    isplitl [HW01]; · iapply (Entails.of_eq (oWin_drained d L (off0_w0_1 L k) _ _ _)); iexact HW01
    isplitl [HW02]; · iapply (Entails.of_eq (oWin_drained d L (off0_w0_2 L k) _ _ _)); iexact HW02
    iapply (Entails.of_eq (oWin_drained d L (off0_w0_3 L k) _ _ _)); iexact HW03
  · iapply (out_done1 m d L (4 * k.val + 1) _ fs1 hst1)
    isplitl [HW10]; · iapply (Entails.of_eq (oWin_drained d L (off0_w1_0 L k) _ _ _)); iexact HW10
    isplitl [HW11]; · iapply (Entails.of_eq (oWin_drained d L (off0_w1_1 L k) _ _ _)); iexact HW11
    isplitl [HW12]; · iapply (Entails.of_eq (oWin_drained d L (off0_w1_2 L k) _ _ _)); iexact HW12
    iapply (Entails.of_eq (oWin_drained d L (off0_w1_3 L k) _ _ _)); iexact HW13

end Cert.Proof.KI

end
-- ==== Proof.KTrip7.lean ====
import proofs.«210091_g81140522156176_cont_9to1_m_468_11_alg».proof.Proof.KTrip

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 16000000 in
set_option maxRecDepth 65536 in
theorem trip7 (d : Dev nD) (L : grid0.Coords) (q : PosShare TreeShare) (O : CellTallies nD τ sig (HIx 1)) (W : Waits sig (HIx 1)) (v2 : BitVec 32)
    (k : Fin k0_t1_loop.trips) (hk7 : k.val = 7)
    (iP0 iX00 iX01 iX02 iX03 iP1 iX10 iX11 iX12 iX13 iP2 iX20 iX21 iX22 iX23 iO00 iO01 iO02 iO03 iO10 iO11 iO12 iO13 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L))) (go00 : Buf (Elt F) (iO00.view.loc (thr d L))) (go01 : Buf (Elt F) (iO01.view.loc (thr d L))) (go02 : Buf (Elt F) (iO02.view.loc (thr d L))) (go03 : Buf (Elt F) (iO03.view.loc (thr d L))) (go10 : Buf (Elt F) (iO10.view.loc (thr d L))) (go11 : Buf (Elt F) (iO11.view.loc (thr d L))) (go12 : Buf (Elt F) (iO12.view.loc (thr d L))) (go13 : Buf (Elt F) (iO13.view.loc (thr d L)))
    (fx : Buf (Elt F) (xLoc d)) (fp : Buf (Elt F) (pLoc d)) (fo : Buf (Elt F) (oLoc d))
    (fsa fsb : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ storeFlight0 (F := F) d L iO00 iO01 iO02 iO03 go00 go01 go02 go03 fsa
        ∗ storeFlight1 (F := F) d L iO10 iO11 iO12 iO13 go10 go11 go12 go13 fsb
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
            ∗ (∃ g, xS02.view.loc (thr d L) ↦[xS02.view.set]{fullShare} g) ∗ (∃ g, xS03.view.loc (thr d L) ↦[xS03.view.set]{fullShare} g)
            ∗ semVal (thr d L, SemLoc.dma cc0_scratch3.sem) 0
            ∗ (∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
            ∗ (∃ g, xS12.view.loc (thr d L) ↦[xS12.view.set]{fullShare} g) ∗ (∃ g, xS13.view.loc (thr d L) ↦[xS13.view.set]{fullShare} g)
            ∗ semVal (thr d L, SemLoc.dma cc0_scratch4.sem) 0
            ∗ (∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
            ∗ (∃ g, xS22.view.loc (thr d L) ↦[xS22.view.set]{fullShare} g) ∗ (∃ g, xS23.view.loc (thr d L) ↦[xS23.view.set]{fullShare} g)
            ∗ semVal (thr d L, SemLoc.dma cc0_scratch5.sem) 0
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (iO00.view.loc (thr d L) ↦[iO00.view.set]{fullShare} lnd iO00 sS00 fsa) ∗ (iO01.view.loc (thr d L) ↦[iO01.view.set]{fullShare} lnd iO01 sS01 fsa) ∗ (iO02.view.loc (thr d L) ↦[iO02.view.set]{fullShare} lnd iO02 sS02 fsa) ∗ (iO03.view.loc (thr d L) ↦[iO03.view.set]{fullShare} lnd iO03 sS03 fsa)
            ∗ (iO10.view.loc (thr d L) ↦[iO10.view.set]{fullShare} lnd iO10 sS10 fsb) ∗ (iO11.view.loc (thr d L) ↦[iO11.view.set]{fullShare} lnd iO11 sS11 fsb) ∗ (iO12.view.loc (thr d L) ↦[iO12.view.set]{fullShare} lnd iO12 sS12 fsb) ∗ (iO13.view.loc (thr d L) ↦[iO13.view.set]{fullShare} lnd iO13 sS13 fsb)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1
  have hk8 : k.val < 8 := Nat.lt_of_lt_of_le k.isLt k0_t1_abs.2.1
  have hk1 : 1 ≤ k.val := by omega
  have h2 := c2_of k hk1
  have h4 := c4_of k hk1
  have h3 := c3_not k hk7
  have h5 := c5_not k hk7
  have h6 := c6_not k hk7
  unfold k0_t1_body loadFlight storeFlight0 storeFlight1 dlv pWinOf xWinOf oWinOf lnd
  iintro ⟨Hmw, HP3, HX30, HX31, HX32, HX33, HB0, HB1, HB2, HC0, HC1, HQ0, HY00, HY01, HY02, HY03, HO00, HO01, HO02, HO03, HO10, HO11, HO12, HO13, HO20, HO21, HO22, HO23, HO30, HO31, HO32, HO33, Hs6, HO⟩
  sl_exec_parts
  ihave H2 : ((sB.view.loc (thr d L) ↦[(((Finset.univ \ sS10.view.set) \ sS11.view.set) \ sS12.view.set) \ sS13.view.set]{fullShare} _ : sProp 𝕄)) $$ [HC0_src0 HC0_src1 HC0_src2 HC0_src3]
  · rw [svb_half0 d (cV L) (jV L)]
    iframe
  sl_for (innerInv0 (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 H2]
  case region =>
    intro j acc
    exact inner0_region d L _ _ _ _ _ _ _ _ _ j acc
  · unfold innerInv0
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [H2]; · iexact H2
    ipureintro; intro b l j' hj; exact absurd hj (Nat.not_lt_zero _)
  iintro %_ HI
  unfold innerInv0
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_half0 (F := F) d (cV L) (jV L) fs0)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HC1_src0 HC1_src1 HC1_src2 HC1_src3]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HP0]; · iexists _; iexact HP0
  isplitl [HX00]; · iexists _; iexact HX00
  isplitl [HX01]; · iexists _; iexact HX01
  isplitl [HX02]; · iexists _; iexact HX02
  isplitl [HX03]; · iexists _; iexact HX03
  isplitl [HB0]; · iexact HB0
  isplitl [HP1]; · iexists _; iexact HP1
  isplitl [HX10]; · iexists _; iexact HX10
  isplitl [HX11]; · iexists _; iexact HX11
  isplitl [HX12]; · iexists _; iexact HX12
  isplitl [HX13]; · iexists _; iexact HX13
  isplitl [HB1]; · iexact HB1
  isplitl [HP2]; · iexists _; iexact HP2
  isplitl [HX20]; · iexists _; iexact HX20
  isplitl [HX21]; · iexists _; iexact HX21
  isplitl [HX22]; · iexists _; iexact HX22
  isplitl [HX23]; · iexists _; iexact HX23
  isplitl [HB2]; · iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [HC0]
  · iexists _
    isplitl []
    · ipureintro; exact hv2
    · iexact HC0
  isplitl [HC1]
  · iexists _
    isplitl []
    · ipureintro; exact hv3
    · iexact HC1
  isplitl [HC0_dst0]; · iexact HC0_dst0
  isplitl [HC0_dst1]; · iexact HC0_dst1
  isplitl [HC0_dst2]; · iexact HC0_dst2
  isplitl [HC0_dst3]; · iexact HC0_dst3
  isplitl [HC1_dst0]; · iexact HC1_dst0
  isplitl [HC1_dst1]; · iexact HC1_dst1
  isplitl [HC1_dst2]; · iexact HC1_dst2
  isplitl [HC1_dst3]; · iexact HC1_dst3
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KI

end
-- ==== Proof.KRegion7L.lean ====
import proofs.«210091_g81140522156176_cont_9to1_m_468_11_alg».proof.Proof.KRegion
import proofs.«210091_g81140522156176_cont_9to1_m_468_11_alg».proof.Proof.KTrip7

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Last
variable (m : (ℓ : Loc nD τ sig) → Buf (Elt F) ℓ) (d : Dev nD) (L : grid0.Coords)

theorem loadPart_ge (g : ℕ) (h : ¬ g < 8) :
    loadPart m d L g = iprop(freeSlot0 d L ∗ freeSlot1 d L ∗ freeSlot2 d L ∗ freeSlot3 d L) := by
  unfold loadPart; rw [dif_neg h]
theorem freeSlot0_def :
    freeSlot0 (F := F) d L = iprop((∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
      ∗ (∃ g, xS02.view.loc (thr d L) ↦[xS02.view.set]{fullShare} g) ∗ (∃ g, xS03.view.loc (thr d L) ↦[xS03.view.set]{fullShare} g)
      ∗ semVal (thr d L, SemLoc.dma cc0_scratch3.sem) 0) := rfl
theorem freeSlot1_def :
    freeSlot1 (F := F) d L = iprop((∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
      ∗ (∃ g, xS12.view.loc (thr d L) ↦[xS12.view.set]{fullShare} g) ∗ (∃ g, xS13.view.loc (thr d L) ↦[xS13.view.set]{fullShare} g)
      ∗ semVal (thr d L, SemLoc.dma cc0_scratch4.sem) 0) := rfl
theorem freeSlot2_def :
    freeSlot2 (F := F) d L = iprop((∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
      ∗ (∃ g, xS22.view.loc (thr d L) ↦[xS22.view.set]{fullShare} g) ∗ (∃ g, xS23.view.loc (thr d L) ↦[xS23.view.set]{fullShare} g)
      ∗ semVal (thr d L, SemLoc.dma cc0_scratch5.sem) 0) := rfl

theorem srcFrom_last (fp : Buf (Elt F) (pLoc d)) (fx : Buf (Elt F) (xLoc d)) (k : Fin k0_t1_loop.trips) (hk7 : k.val = 7) :
    srcFrom d L fp fx (4 * k.val + 3) = iprop(iprop(((pWinOf (k0_off11 L k) (k0_off11_inb L k (c1_all k))).view.loc (thr d L) ↦[(pWinOf (k0_off11 L k) (k0_off11_inb L k (c1_all k))).view.set]{rsh} fp) ∗ ((xWinOf (k0_off12 L k) (k0_off12_inb L k (c1_all k))).view.loc (thr d L) ↦[(xWinOf (k0_off12 L k) (k0_off12_inb L k (c1_all k))).view.set]{rsh} fx) ∗ ((xWinOf (k0_off13 L k) (k0_off13_inb L k (c1_all k))).view.loc (thr d L) ↦[(xWinOf (k0_off13 L k) (k0_off13_inb L k (c1_all k))).view.set]{rsh} fx) ∗ ((xWinOf (k0_off14 L k) (k0_off14_inb L k (c1_all k))).view.loc (thr d L) ↦[(xWinOf (k0_off14 L k) (k0_off14_inb L k (c1_all k))).view.set]{rsh} fx) ∗ ((xWinOf (k0_off15 L k) (k0_off15_inb L k (c1_all k))).view.loc (thr d L) ↦[(xWinOf (k0_off15 L k) (k0_off15_inb L k (c1_all k))).view.set]{rsh} fx)) ∗ emp) := by
  rw [srcFrom_succ d L fp fx (4 * k.val + 3) (by omega), srcFrom_done d L fp fx (4 * k.val + 3 + 1) (by omega)]
  refine sep_congr' ?_ rfl
  unfold srcChunk
  exact sep_congr' (pWin_pts d L (off_s0_p L k) _ _ rsh fp).symm (sep_congr' (xWin_pts d L (off_s0_x0 L k) _ _ rsh fx).symm
    (sep_congr' (xWin_pts d L (off_s0_x1 L k) _ _ rsh fx).symm (sep_congr' (xWin_pts d L (off_s0_x2 L k) _ _ rsh fx).symm
      (xWin_pts d L (off_s0_x3 L k) _ _ rsh fx).symm)))

theorem outBelow_trip8 (g : Buf (Elt F) (oLoc d)) (k : ℕ) (hk1 : 1 ≤ k) (hk8 : k < 8) :
    iprop(outBelow d L g (4 * k - 2) ∗ outChunk d L g (4 * k - 2) (by omega) ∗ outChunk d L g (4 * k - 1) (by omega)
        ∗ outChunk d L g (4 * k) (by omega) ∗ outChunk d L g (4 * k + 1) (by omega))
      ⊢ outBelow d L g (4 * (k + 1) - 2) := by
  have e1 : 4 * k - 2 + 1 = 4 * k - 1 := by omega
  have e2 : 4 * k - 1 + 1 = 4 * k := by omega
  have e4 : 4 * k + 1 + 1 = 4 * (k + 1) - 2 := by omega
  iintro ⟨HB, H0, H1, H2, H3⟩
  ihave HB := (Entails.of_eq (outBelow_succ d L g (4 * k - 2) (by omega)).symm) $$ [HB H0]
  · isplitl [HB]; · iexact HB
    iexact H0
  ihave HB := (Entails.of_eq (congrArg (outBelow d L g) e1)) $$ HB
  ihave HB := (Entails.of_eq (outBelow_succ d L g (4 * k - 1) (by omega)).symm) $$ [HB H1]
  · isplitl [HB]; · iexact HB
    iexact H1
  ihave HB := (Entails.of_eq (congrArg (outBelow d L g) e2)) $$ HB
  ihave HB := (Entails.of_eq (outBelow_succ d L g (4 * k) (by omega)).symm) $$ [HB H2]
  · isplitl [HB]; · iexact HB
    iexact H2
  ihave HB := (Entails.of_eq (outBelow_succ d L g (4 * k + 1) (by omega)).symm) $$ [HB H3]
  · isplitl [HB]; · iexact HB
    iexact H3
  iapply (Entails.of_eq (congrArg (outBelow d L g) e4)); iexact HB
end Last

set_option maxHeartbeats 4000000 in
theorem region_7 (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk7 : k.val = 7)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk1 : 1 ≤ k.val := by omega
  have hk8 : k.val < 8 := by omega
  unfold Inv
  rw [loadPart_lt m d L k.val hk8, storePart_mid m d L k.val (by omega) (by omega),
    loadPart_ge m d L (k.val + 1) (by omega), storePart_mid m d L (k.val + 1) (by omega) (by omega),
    srcFrom_last d L (mp m d) (m (xLoc d)) k hk7, srcFrom_done d L (mp m d) (m (xLoc d)) (4 * (k.val + 1) + 3) (by omega),
    outFrom_trip d L (m (oLoc d)) k]
  iintro ⟨Hmw, ⟨%W', %hW', HO⟩, ⟨HF0, HF1, HF2, Hfree⟩,
    ⟨⟨HQ0, HY00, HY01, HY02, HY03⟩, -⟩,
    ⟨HC0, HC1⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  ihave HC0 := (Entails.of_eq (flightOut0_def m d L _ _)) $$ HC0
  icases HC0 with ⟨%fsa, %hsta, HC0⟩
  ihave HC1 := (Entails.of_eq (flightOut1_def m d L _ _)) $$ HC1
  icases HC1 with ⟨%fsb, %hstb, HC1⟩
  iapply (wp_wand_r frame (wpE (defs₀ (F := F)) 𝒱₀ (thr d L) none) Set.univ)
  isplitl [Hmw HP3 HX30 HX31 HX32 HX33 HF0 HF1 HF2 HC0 HC1 HQ0 HY00 HY01 HY02 HY03 HO00 HO01 HO02 HO03 HO10 HO11 HO12 HO13 HO20 HO21 HO22 HO23 HO30 HO31 HO32 HO33 Hs6 HO]
  · iapply (trip7 (F := F) d L rsh O W' v2 k hk7 _ _ _ _ _ _ _ _ _ _ _ _ _ _ _ _ _ _ _ _ _ _ _
      _ _ _ _ _ _ _ _ _ _ _ _ _ _ _ _ _ _ _ _ _ _ _
      (m (xLoc d)) (mp m d) (m (oLoc d)) fsa fsb gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [HC0]; · iexact HC0
    isplitl [HC1]; · iexact HC1
    isplitl [HQ0]; · iexact HQ0
    isplitl [HY00]; · iexact HY00
    isplitl [HY01]; · iexact HY01
    isplitl [HY02]; · iexact HY02
    isplitl [HY03]; · iexact HY03
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, A0p, A00, A01, A02, A03, As0, A1p, A10, A11, A12, A13, As1, A2p, A20, A21, A22, A23, As2, A3p, A30, A31, A32, A33, As3,
    ⟨%fs2, %hv2, HSF0⟩, ⟨%fs3, %hv3, HSF1⟩,
    HD00, HD01, HD02, HD03, HD10, HD11, HD12, HD13, ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [A0p A00 A01 A02 A03 As0 A1p A10 A11 A12 A13 As1 A2p A20 A21 A22 A23 As2 A3p A30 A31 A32 A33 As3]
  · isplitl [A0p A00 A01 A02 A03 As0]
    · iapply (Entails.of_eq (freeSlot0_def d L).symm)
      isplitl [A0p]; · iexact A0p
      isplitl [A00]; · iexact A00
      isplitl [A01]; · iexact A01
      isplitl [A02]; · iexact A02
      isplitl [A03]; · iexact A03
      iexact As0
    isplitl [A1p A10 A11 A12 A13 As1]
    · iapply (Entails.of_eq (freeSlot1_def d L).symm)
      isplitl [A1p]; · iexact A1p
      isplitl [A10]; · iexact A10
      isplitl [A11]; · iexact A11
      isplitl [A12]; · iexact A12
      isplitl [A13]; · iexact A13
      iexact As1
    isplitl [A2p A20 A21 A22 A23 As2]
    · iapply (Entails.of_eq (freeSlot2_def d L).symm)
      isplitl [A2p]; · iexact A2p
      isplitl [A20]; · iexact A20
      isplitl [A21]; · iexact A21
      isplitl [A22]; · iexact A22
      isplitl [A23]; · iexact A23
      iexact As2
    iapply (Entails.of_eq (freeSlot3_def d L).symm)
    isplitl [A3p]; · iexact A3p
    isplitl [A30]; · iexact A30
    isplitl [A31]; · iexact A31
    isplitl [A32]; · iexact A32
    isplitl [A33]; · iexact A33
    iexact As3
  isplitr; · iempintro
  isplitl [HSF0 HSF1]
  · isplitl [HSF0]
    · iapply (Entails.of_eq (flightOut0_def m d L _ _).symm)
      iexists fs2; isplitr
      · ipureintro; exact hst2
      · iapply (Entails.of_eq (storeFlight_new0 m d L k hk1 _ fs2)); iexact HSF0
    · iapply (Entails.of_eq (flightOut1_def m d L _ _).symm)
      iexists fs3; isplitr
      · ipureintro; exact hst3
      · iapply (Entails.of_eq (storeFlight_new1 m d L k hk1 _ fs3)); iexact HSF1
  isplitl [Hout]; · iexact Hout
  iapply (outBelow_trip8 d L (mres m d) k.val hk1 hk8)
  isplitl [Hbel]; · iexact Hbel
  isplitl [HD00 HD01 HD02 HD03]
  · iapply (out_done0 m d L (4 * k.val - 2) _ fsa hsta)
    isplitl [HD00]; · iexact HD00
    isplitl [HD01]; · iexact HD01
    isplitl [HD02]; · iexact HD02
    iexact HD03
  isplitl [HD10 HD11 HD12 HD13]
  · iapply (out_done1 m d L (4 * k.val - 1) _ fsb hstb)
    isplitl [HD10]; · iexact HD10
    isplitl [HD11]; · iexact HD11
    isplitl [HD12]; · iexact HD12
    iexact HD13
  isplitl [HW00 HW01 HW02 HW03]
  · iapply (out_done0 m d L (4 * k.val) _ fs0 hst0)
    isplitl [HW00]; · iapply (Entails.of_eq (oWin_drained d L (off_w0_0 L k hk1) _ _ _)); iexact HW00
    isplitl [HW01]; · iapply (Entails.of_eq (oWin_drained d L (off_w0_1 L k hk1) _ _ _)); iexact HW01
    isplitl [HW02]; · iapply (Entails.of_eq (oWin_drained d L (off_w0_2 L k hk1) _ _ _)); iexact HW02
    iapply (Entails.of_eq (oWin_drained d L (off_w0_3 L k hk1) _ _ _)); iexact HW03
  · iapply (out_done1 m d L (4 * k.val + 1) _ fs1 hst1)
    isplitl [HW10]; · iapply (Entails.of_eq (oWin_drained d L (off_w1_0 L k hk1) _ _ _)); iexact HW10
    isplitl [HW11]; · iapply (Entails.of_eq (oWin_drained d L (off_w1_1 L k hk1) _ _ _)); iexact HW11
    isplitl [HW12]; · iapply (Entails.of_eq (oWin_drained d L (off_w1_2 L k hk1) _ _ _)); iexact HW12
    iapply (Entails.of_eq (oWin_drained d L (off_w1_3 L k hk1) _ _ _)); iexact HW13

end Cert.Proof.KI

end
-- ==== Proof.KBody.lean ====
import proofs.«210091_g81140522156176_cont_9to1_m_468_11_alg».proof.Proof.KRegion0L
import proofs.«210091_g81140522156176_cont_9to1_m_468_11_alg».proof.Proof.KRegion7L

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem lt30 : 30 < 32 := by decide
theorem lt31 : 31 < 32 := by decide

theorem inv_exit (m : (ℓ : Loc nD τ sig) → Buf (Elt F) ℓ) (d : Dev nD) (L : grid0.Coords) (O : CellTallies nD τ sig (HIx 1)) (W : Waits sig (HIx 1)) (acc : PUnit) :
    Inv m d L O W (Scf.trips k0_t1_loop.lb k0_t1_loop.ub k0_t1_loop.st) acc
      = iprop(Transfers.MayWaits (thr d L) (none : HIx 1) O
          ∗ (∃ W', ⌜∀ p ∈ W', p ∈ W ∨ p.2 = none⌝ ∗ owes (thr d L) O W')
          ∗ (freeSlot0 (F := F) d L ∗ freeSlot1 (F := F) d L ∗ freeSlot2 (F := F) d L ∗ freeSlot3 (F := F) d L)
          ∗ srcFrom d L (mp m d) (m (xLoc d)) (4 * 8 + 3)
          ∗ (flightOut0 m d L 30 (by decide) ∗ flightOut1 m d L 31 (by decide))
          ∗ outFrom d L (m (oLoc d)) (4 * 8) ∗ outBelow d L (mres m d) (4 * 8 - 2)) := by
  have h8 : Scf.trips k0_t1_loop.lb k0_t1_loop.ub k0_t1_loop.st = 8 := trips_eq
  rw [h8]
  unfold Inv loadPart storePart
  rw [dif_neg (by decide : ¬ (8 : ℕ) < 8), dif_neg (by decide : ¬ (8 : ℕ) = 0), dif_pos (by decide : (8 : ℕ) ≤ 8)]

set_option maxHeartbeats 8000000 in
set_option maxRecDepth 65536 in
/-- A task: its rows of the two sources at a half share and of the result in full go in; the result's rows come back at the sums. -/
theorem tile_body (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    (iprop(levAts (K (F := F)).L (K (F := F)).lev
        ∗ goOf m d (L 0).val (L 1).val (L 0).isLt (L 1).isLt
        ∗ (∃ f, (thr d L).loc cc0_scratch0 ↦{fullShare} f) ∗ (∃ f, (thr d L).loc cc0_scratch1 ↦{fullShare} f) ∗ (∃ f, (thr d L).loc cc0_scratch2 ↦{fullShare} f)
        ∗ semVal (thr d L, SemLoc.dma cc0_scratch3.sem) 0 ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0 ∗ semVal (thr d L, SemLoc.dma cc0_scratch8.sem) 0
        ∗ owes (thr d L) O W) : sProp 𝕄)
      ⊢ wp frame (wpE (defs₀ (F := F)) 𝒱₀ (thr d L) none) Set.univ
          (cc0_sc_add L xV (Memref.isWhole_whole _) pV (Memref.isWhole_whole _) oV (Memref.isWhole_whole _) pB (Memref.isWhole_whole _) xB (Memref.isWhole_whole _) sB (Memref.isWhole_whole _)
            cc0_scratch3 cc0_scratch4 cc0_scratch5 cc0_scratch6 cc0_scratch7 cc0_scratch8)
          fun _ => iprop(tdOf m d (L 0).val (L 1).val (L 0).isLt (L 1).isLt
            ∗ (∃ f, (thr d L).loc cc0_scratch0 ↦{fullShare} f) ∗ (∃ f, (thr d L).loc cc0_scratch1 ↦{fullShare} f) ∗ (∃ f, (thr d L).loc cc0_scratch2 ↦{fullShare} f)
            ∗ semVal (thr d L, SemLoc.dma cc0_scratch3.sem) 0 ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0 ∗ semVal (thr d L, SemLoc.dma cc0_scratch8.sem) 0
            ∗ ∃ W', ⌜∀ p ∈ W', p ∈ W ∨ p.2 = none⌝ ∗ owes (thr d L) O W') := by
  have _p3 : Transfers.BatchOf (thr d L) (SemLoc.dma (sig := sig) cc0_scratch3.sem) 5 := trivial
  have _p4 : Transfers.BatchOf (thr d L) (SemLoc.dma (sig := sig) cc0_scratch4.sem) 5 := trivial
  have _p5 : Transfers.BatchOf (thr d L) (SemLoc.dma (sig := sig) cc0_scratch5.sem) 5 := trivial
  have _p6 : Transfers.BatchOf (thr d L) (SemLoc.dma (sig := sig) cc0_scratch6.sem) 5 := trivial
  have _p7 : Transfers.BatchOf (thr d L) (SemLoc.dma (sig := sig) cc0_scratch7.sem) 4 := trivial
  have _p8 : Transfers.BatchOf (thr d L) (SemLoc.dma (sig := sig) cc0_scratch8.sem) 4 := trivial
  rw [goOf_chunks, ← tdOf_chunks]
  simp only [cc0_sc_add_eq_skeleton]; unfold cc0_sc_add_skel
  iintro ⟨#Hlv, ⟨Hsrc, Hout⟩, ⟨%f0, H0⟩, ⟨%f1, H1⟩, ⟨%f2, H2⟩, Hs3, Hs4, Hs5, Hs6, Hs7, Hs8, HO⟩
  ihave Hmw := ((K (F := F)).mayWaits_none (thr := thr d L) hO) $$ Hlv
  ihave HPs := (Entails.of_eq (pvb_slots (F := F) d (cV L) (jV L) f0)) $$ H0
  icases HPs with ⟨HP0, HP1, HP2, HP3⟩
  ihave HXs := (Entails.of_eq (xvb_slots (F := F) d (cV L) (jV L) f1)) $$ H1
  icases HXs with ⟨HX00, HX01, HX02, HX03, HX10, HX11, HX12, HX13, HX20, HX21, HX22, HX23, HX30, HX31, HX32, HX33⟩
  ihave Hsrc0 := (Entails.of_eq (srcFrom_succ (F := F) d L _ _ 0 (by decide))) $$ Hsrc
  icases Hsrc0 with ⟨Hc0, Hsrc⟩
  ihave Hsrc1 := (Entails.of_eq (srcFrom_succ (F := F) d L _ _ 1 (by decide))) $$ Hsrc
  icases Hsrc1 with ⟨Hc1, Hsrc⟩
  ihave Hsrc2 := (Entails.of_eq (srcFrom_succ (F := F) d L _ _ 2 (by decide))) $$ Hsrc
  icases Hsrc2 with ⟨Hc2, Hsrc⟩
  ihave Hc0' := (Entails.of_eq (srcChunk_pro0 (F := F) d L _ _)) $$ Hc0
  icases Hc0' with ⟨HQ0, HY00, HY01, HY02, HY03⟩
  ihave Hc1' := (Entails.of_eq (srcChunk_pro1 (F := F) d L _ _)) $$ Hc1
  icases Hc1' with ⟨HQ1, HY10, HY11, HY12, HY13⟩
  ihave Hc2' := (Entails.of_eq (srcChunk_pro2 (F := F) d L _ _)) $$ Hc2
  icases Hc2' with ⟨HQ2, HY20, HY21, HY22, HY23⟩
  unfold pWinOf xWinOf
  sl_exec_parts
  sl_for (Inv m d L O W) $$ [HO Hs3 Hs4 Hs5 HP3 HX30 HX31 HX32 HX33 Hs6 Hs7 Hs8 H2 Hsrc Hout]
  case region =>
    intro k acc
    rcases Nat.lt_or_ge k.val 1 with h0 | h1
    · exact region_0 m d L O W _ k (by omega) _p3 _p4 _p5 _p6 _p7 _p8
    · rcases Nat.lt_or_ge k.val 7 with h6 | h7
      · exact region_mid m d L O W _ k h1 h6 _p3 _p4 _p5 _p6 _p7 _p8
      · exact region_7 m d L O W _ k (by have := trip_lt k; omega) _p3 _p4 _p5 _p6 _p7 _p8
  ·
    unfold Inv
    isplitl []; · iexact Hmw
    isplitl [HO]
    · iexists W
      isplitl []
      · ipureintro; exact fun p hp => Or.inl hp
      · iexact HO
    isplitl [Hs3 Hs4 Hs5 HP3 HX30 HX31 HX32 HX33 Hs6]
    · unfold loadPart
      rw [dif_pos (by decide : (0 : ℕ) < 8)]
      isplitl [Hs3]
      · iapply (Entails.of_eq (flightIn_pro0 (F := F) m d L))
        iexists _, _, _, _, _
        unfold loadFlight dlv pWinOf xWinOf
        iexact Hs3
      isplitl [Hs4]
      · iapply (Entails.of_eq (flightIn_pro1 (F := F) m d L))
        iexists _, _, _, _, _
        unfold loadFlight dlv pWinOf xWinOf
        iexact Hs4
      isplitl [Hs5]
      · iapply (Entails.of_eq (flightIn_pro2 (F := F) m d L))
        iexists _, _, _, _, _
        unfold loadFlight dlv pWinOf xWinOf
        iexact Hs5
      unfold freeSlot3
      isplitl [HP3]; · iexists _; iexact HP3
      isplitl [HX30]; · iexists _; iexact HX30
      isplitl [HX31]; · iexists _; iexact HX31
      isplitl [HX32]; · iexists _; iexact HX32
      isplitl [HX33]; · iexists _; iexact HX33
      iexact Hs6
    isplitl [Hsrc]; · iexact Hsrc
    isplitl [Hs7 Hs8 H2]
    · unfold storePart
      rw [dif_pos rfl]
      isplitl [Hs7]; · iexact Hs7
      isplitl [Hs8]; · iexact Hs8
      iexists _; iexact H2
    isplitl [Hout]; · iexact Hout
    iapply (Entails.of_eq (outBelow_zero (F := F) d L _).symm)
    iempintro
  iintro %_ HI
  ihave HI' := (Entails.of_eq (inv_exit (F := F) m d L O W _)) $$ HI
  icases HI' with ⟨-, ⟨%W', %hW', HO⟩, ⟨Hf0, Hf1, Hf2, Hf3⟩, -, ⟨HF0, HF1⟩, -, Hdone⟩
  unfold freeSlot0 freeSlot1 freeSlot2 freeSlot3 flightOut0 flightOut1
  icases Hf0 with ⟨⟨%a0p, HP0⟩, ⟨%a00, HX00⟩, ⟨%a01, HX01⟩, ⟨%a02, HX02⟩, ⟨%a03, HX03⟩, Hl0⟩
  icases Hf1 with ⟨⟨%a1p, HP1⟩, ⟨%a10, HX10⟩, ⟨%a11, HX11⟩, ⟨%a12, HX12⟩, ⟨%a13, HX13⟩, Hl1⟩
  icases Hf2 with ⟨⟨%a2p, HP2⟩, ⟨%a20, HX20⟩, ⟨%a21, HX21⟩, ⟨%a22, HX22⟩, ⟨%a23, HX23⟩, Hl2⟩
  icases Hf3 with ⟨⟨%a3p, HP3⟩, ⟨%a30, HX30⟩, ⟨%a31, HX31⟩, ⟨%a32, HX32⟩, ⟨%a33, HX33⟩, Hl3⟩
  icases HF0 with ⟨%fsa, %hsa, HC0⟩
  icases HF1 with ⟨%fsb, %hsb, HC1⟩
  unfold storeFlight0 storeFlight1
  sl_exec_parts
  sl_step
  ihave G0 := (Entails.of_eq (out_done_one m d L 0 30 lt30 fsa hsa 0 lt4_0 _ (sS00_read fsa) (m (oLoc d)))) $$ HC0_dst0
  ihave G1 := (Entails.of_eq (out_done_one m d L 0 30 lt30 fsa hsa 1 lt4_1 _ (sS01_read fsa) (m (oLoc d)))) $$ HC0_dst1
  ihave G2 := (Entails.of_eq (out_done_one m d L 0 30 lt30 fsa hsa 2 lt4_2 _ (sS02_read fsa) (m (oLoc d)))) $$ HC0_dst2
  ihave G3 := (Entails.of_eq (out_done_one m d L 0 30 lt30 fsa hsa 3 lt4_3 _ (sS03_read fsa) (m (oLoc d)))) $$ HC0_dst3
  ihave K0 := (Entails.of_eq (out_done_one m d L 1 31 lt31 fsb hsb 0 lt4_0 _ (sS10_read fsb) (m (oLoc d)))) $$ HC1_dst0
  ihave K1 := (Entails.of_eq (out_done_one m d L 1 31 lt31 fsb hsb 1 lt4_1 _ (sS11_read fsb) (m (oLoc d)))) $$ HC1_dst1
  ihave K2 := (Entails.of_eq (out_done_one m d L 1 31 lt31 fsb hsb 2 lt4_2 _ (sS12_read fsb) (m (oLoc d)))) $$ HC1_dst2
  ihave K3 := (Entails.of_eq (out_done_one m d L 1 31 lt31 fsb hsb 3 lt4_3 _ (sS13_read fsb) (m (oLoc d)))) $$ HC1_dst3
  isplitl [Hdone G0 G1 G2 G3 K0 K1 K2 K3]
  · iapply (Entails.of_eq (outBelow_succ (F := F) d L (mres m d) 31 lt31).symm)
    isplitl [Hdone G0 G1 G2 G3]
    · iapply (Entails.of_eq (outBelow_succ (F := F) d L (mres m d) 30 lt30).symm)
      isplitl [Hdone]; · iexact Hdone
      unfold outChunk
      isplitl [G0]; · iexact G0
      isplitl [G1]; · iexact G1
      isplitl [G2]; · iexact G2
      iexact G3
    · unfold outChunk
      isplitl [K0]; · iexact K0
      isplitl [K1]; · iexact K1
      isplitl [K2]; · iexact K2
      iexact K3
  isplitl [HP0 HP1 HP2 HP3]
  · iapply (pvb_join (F := F) d (cV L) (jV L) _ _ _ _)
    isplitl [HP0]; · iexact HP0
    isplitl [HP1]; · iexact HP1
    isplitl [HP2]; · iexact HP2
    iexact HP3
  isplitl [HX00 HX01 HX02 HX03 HX10 HX11 HX12 HX13 HX20 HX21 HX22 HX23 HX30 HX31 HX32 HX33]
  · iapply (xvb_join (F := F) d (cV L) (jV L) _ _ _ _ _ _ _ _ _ _ _ _ _ _ _ _ )
    isplitl [HX00]; · iexact HX00
    isplitl [HX01]; · iexact HX01
    isplitl [HX02]; · iexact HX02
    isplitl [HX03]; · iexact HX03
    isplitl [HX10]; · iexact HX10
    isplitl [HX11]; · iexact HX11
    isplitl [HX12]; · iexact HX12
    isplitl [HX13]; · iexact HX13
    isplitl [HX20]; · iexact HX20
    isplitl [HX21]; · iexact HX21
    isplitl [HX22]; · iexact HX22
    isplitl [HX23]; · iexact HX23
    isplitl [HX30]; · iexact HX30
    isplitl [HX31]; · iexact HX31
    isplitl [HX32]; · iexact HX32
    iexact HX33
  isplitl [HC0_src0 HC0_src1 HC0_src2 HC0_src3 HC1_src0 HC1_src1 HC1_src2 HC1_src3]
  · iapply (svb_join (F := F) d (cV L) (jV L) fsa fsb)
    isplitl [HC0_src0 HC0_src1 HC0_src2 HC0_src3]
    ·
      isplitl [HC0_src0]; · iexact HC0_src0
      isplitl [HC0_src1]; · iexact HC0_src1
      isplitl [HC0_src2]; · iexact HC0_src2
      iexact HC0_src3
    ·
      isplitl [HC1_src0]; · iexact HC1_src0
      isplitl [HC1_src1]; · iexact HC1_src1
      isplitl [HC1_src2]; · iexact HC1_src2
      iexact HC1_src3
  isplitl [Hl0]; · iexact Hl0
  isplitl [Hl1]; · iexact Hl1
  isplitl [Hl2]; · iexact Hl2
  isplitl [Hl3]; · iexact Hl3
  isplitl [HC0]; · iexact HC0
  isplitl [HC1]; · iexact HC1
  iexists _
  isplitl []
  rotate_left
  · iexact HO
  · ipureintro
    intro p hp
    simp only [Finset.mem_insert] at hp
    repeat' (first | exact hW' p hp | (rcases hp with rfl | hp; exact Or.inr rfl))

end Cert.Proof.KI

end
-- ==== Proof.KTile.lean ====
import proofs.«210091_g81140522156176_cont_9to1_m_468_11_alg».proof.Proof.KBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ)

abbrev sems6 : Finset (SemLoc sig) :=
  {SemLoc.dma cc0_scratch3.sem, SemLoc.dma cc0_scratch4.sem, SemLoc.dma cc0_scratch5.sem,
    SemLoc.dma cc0_scratch6.sem, SemLoc.dma cc0_scratch7.sem, SemLoc.dma cc0_scratch8.sem}
omit [FloatOps F] in
theorem sems6_scoped : ∀ sm ∈ (sems6 : Finset (SemLoc sig)), sm.isScoped .scVector = true := by decide

def cells6 (t : Thread nD τ) : Finset (GSem nD τ sig) := sems6.map ⟨fun sm => (t, sm), fun _ _ e => (Prod.mk.inj e).2⟩
omit [FloatOps F] in
theorem cells6_sub (d : Dev nD) (c : Fin τ.nSC) (i : Fin τ.nSub) : cells6 (V d c i) ⊆ ownCells (V d c i) := by
  intro g hg
  obtain ⟨sm, hsm, rfl⟩ := Finset.mem_map.mp hg
  exact mem_ownCells.mpr ⟨rfl, sems6_scoped sm hsm⟩

omit [FloatOps F] in

theorem ownSems0_six (d : Dev nD) (c : Fin τ.nSC) (i : Fin τ.nSub) :
    (ownSems0 (V d c i) : sProp 𝕄)
      = iprop((semVal ((V d c i, SemLoc.dma cc0_scratch3.sem) : GSem nD τ sig) 0 ∗ semVal ((V d c i, SemLoc.dma cc0_scratch4.sem) : GSem nD τ sig) 0
            ∗ semVal ((V d c i, SemLoc.dma cc0_scratch5.sem) : GSem nD τ sig) 0 ∗ semVal ((V d c i, SemLoc.dma cc0_scratch6.sem) : GSem nD τ sig) 0
            ∗ semVal ((V d c i, SemLoc.dma cc0_scratch7.sem) : GSem nD τ sig) 0 ∗ semVal ((V d c i, SemLoc.dma cc0_scratch8.sem) : GSem nD τ sig) 0)
          ∗ bigSep (ownCells (V d c i) \ cells6 (V d c i)) fun g => semVal g 0) := by
  unfold SparseCore.Cfg.ownSems0
  rw [SparseCore.bigSep_sdiff_split' (cells6_sub d c i)]
  unfold cells6 sems6
  rw [bigSep_map, SparseCore.bigSep_insert' (by decide), SparseCore.bigSep_insert' (by decide), SparseCore.bigSep_insert' (by decide),
    SparseCore.bigSep_insert' (by decide), SparseCore.bigSep_insert' (by decide), bigSep_singleton]
  rfl

abbrev refs3 : Finset (Ref sig .scVector) := {cc0_scratch0, cc0_scratch1, cc0_scratch2}
omit [FloatOps F] in
theorem refs3_nd0 : (cc0_scratch0 : Ref sig .scVector) ∉ ({cc0_scratch1, cc0_scratch2} : Finset (Ref sig .scVector)) := by decide
omit [FloatOps F] in
theorem refs3_nd1 : (cc0_scratch1 : Ref sig .scVector) ∉ ({cc0_scratch2} : Finset (Ref sig .scVector)) := by decide
def bufs3 (c : Fin τ.nSC) (i : Fin τ.nSub) : Finset (DevRef τ sig) :=
  refs3.map ⟨(Proc.scVector c i : Proc τ).devRef, Proc.devRef_injective _⟩
omit [FloatOps F] in
theorem bufs3_sub (c : Fin τ.nSC) (i : Fin τ.nSub) : bufs3 c i ⊆ ownRefs (τ := τ) (.scVector c i) := by
  intro b hb
  obtain ⟨r, hr, rfl⟩ := Finset.mem_map.mp hb
  simp only [refs3, Finset.mem_insert, Finset.mem_singleton] at hr
  rcases hr with rfl | rfl | rfl <;> exact SparseCore.Cfg.mem_ownRefs_of_owner rfl

omit [FloatOps F] in

theorem ownBufs_three (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ bufs3 c i) fun b => iprop(∃ f, ((d, b) : Loc nD τ sig) ↦{fullShare} f)) := by
  unfold SparseCore.Cfg.ownBufs
  rw [show (V d c i : Thread nD τ).2 = .scVector c i from rfl, SparseCore.bigSep_sdiff_split' (bufs3_sub c i)]
  unfold bufs3 refs3
  rw [bigSep_map, SparseCore.bigSep_insert' refs3_nd0, SparseCore.bigSep_insert' refs3_nd1, bigSep_singleton]
  rfl

omit [FloatOps F] in

theorem obl_of_body {t : Thread nD τ} {α : Type} {wpe : Set ℕ → ∀ ⦃β : Type⦄, TpuEff nD τ sig (Elt F) Λ₀ t.2 β → sWPT 𝕄 β}
    [∀ ⦃β : Type⦄ (e : TpuEff nD τ sig (Elt F) Λ₀ t.2 β), sWPT.Frameable (wpe Set.univ e)]
    {p : Prog (TpuEff nD τ sig (Elt F) Λ₀ t.2) α}
    {LV X GO TD B0 B1 B2 T3 T4 T5 T6 T7 T8 BR SR SB SS : sProp 𝕄} {O : CellTallies nD τ sig (HIx 1)} {W : Waits sig (HIx 1)} (q : Fin 1)
    (hb : SB = iprop((B0 ∗ B1 ∗ B2) ∗ BR)) (hs : SS = iprop((T3 ∗ T4 ∗ T5 ∗ T6 ∗ T7 ∗ T8) ∗ SR))
    (body : iprop(LV ∗ GO ∗ B0 ∗ B1 ∗ B2 ∗ T3 ∗ T4 ∗ T5 ∗ T6 ∗ T7 ∗ T8 ∗ owes t O W)
      ⊢ wp frame wpe Set.univ p fun _ => iprop(TD ∗ B0 ∗ B1 ∗ B2 ∗ T3 ∗ T4 ∗ T5 ∗ T6 ∗ T7 ∗ T8
          ∗ ∃ W', ⌜∀ p ∈ W', p ∈ W ∨ p.2 = none⌝ ∗ owes t O W')) :
    iprop(LV ∗ X ∗ GO ∗ SB ∗ SS ∗ owes t O W)
      ⊢ wp frame wpe Set.univ p fun _ => iprop(TD ∗ SB ∗ SS ∗ ∃ W', ⌜∀ p ∈ W', p ∈ W ∨ p.2 = none ∨ p.2 = some q⌝ ∗ owes t O W') := by
  rw [hb, hs]
  iintro ⟨Hlv, -, Hgo, ⟨⟨H0, H1, H2⟩, Hbr⟩, ⟨⟨S3, S4, S5, S6, S7, S8⟩, Hsr⟩, HO⟩
  ihave Hwp := body $$ [Hlv Hgo H0 H1 H2 S3 S4 S5 S6 S7 S8 HO]
  · isplitl [Hlv]; · iexact Hlv
    isplitl [Hgo]; · iexact Hgo
    isplitl [H0]; · iexact H0
    isplitl [H1]; · iexact H1
    isplitl [H2]; · iexact H2
    isplitl [S3]; · iexact S3
    isplitl [S4]; · iexact S4
    isplitl [S5]; · iexact S5
    isplitl [S6]; · iexact S6
    isplitl [S7]; · iexact S7
    isplitl [S8]; · iexact S8
    iexact HO
  iapply (wp_wand frame wpe Set.univ) $$ Hwp
  iintro %_ ⟨Htd, H0, H1, H2, S3, S4, S5, S6, S7, S8, %W', %hW', HO⟩
  isplitl [Htd]; · iexact Htd
  isplitl [H0 H1 H2 Hbr]
  · isplitl [H0 H1 H2]
    · isplitl [H0]; · iexact H0
      isplitl [H1]; · iexact H1
      iexact H2
    iexact Hbr
  isplitl [S3 S4 S5 S6 S7 S8 Hsr]
  · isplitl [S3 S4 S5 S6 S7 S8]
    · isplitl [S3]; · iexact S3
      isplitl [S4]; · iexact S4
      isplitl [S5]; · iexact S5
      isplitl [S6]; · iexact S6
      isplitl [S7]; · iexact S7
      iexact S8
    iexact Hsr
  iexists W'; isplitr
  · ipureintro; exact fun p hp => (hW' p hp).imp_right Or.inl
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_add (coordsV c s)
          xV (Memref.isWhole_whole _) pV (Memref.isWhole_whole _) oV (Memref.isWhole_whole _)
          pB (Memref.isWhole_whole _) xB (Memref.isWhole_whole _) sB (Memref.isWhole_whole _)
          cc0_scratch3 cc0_scratch4 cc0_scratch5 cc0_scratch6 cc0_scratch7 cc0_scratch8) ⟨⟩ c s := rfl

/-- The task's proof, with the rest of the subcore's own storage carried around it untouched. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_of_body (0 : Fin 1)
    (((K (F := F)).scopedBufs_V hF d _ _).trans (ownBufs_three d _ _))
    ((SparseCore.Cfg.scopedSems0_V (Val := Elt F) d _ _).trans (ownSems0_six d _ _))
    (tile_body m d (coordsV ⟨_, hc.1⟩ ⟨_, hc.2⟩) hF O W hO)

end Cert.Proof.KI

end
-- ==== Proof.KLaunch.lean ====
import proofs.«210091_g81140522156176_cont_9to1_m_468_11_alg».proof.Proof.KCommon
import proofs.«210091_g81140522156176_cont_9to1_m_468_11_alg».proof.Proof.KTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem hdivX : 32 ∣ S4x4096x1024.size 1 := ⟨128, rfl⟩
theorem hdivP : 32 ∣ S4096x1024.size 0 := ⟨128, rfl⟩

def wIx (c : Fin 2) (i : Fin 16) : Fin 32 := ⟨2 * i.val + c.val, by omega⟩

theorem wIx_inj {c c' : Fin 2} {i i' : Fin 16} (h : wIx c i = wIx c' i') : c = c' ∧ i = i' := by
  have := congrArg Fin.val h
  simp only [wIx] at this
  exact ⟨Fin.ext (by omega), Fin.ext (by omega)⟩

theorem wIx_surj (j : Fin 32) : ∃ (c : Fin 2) (i : Fin 16), wIx c i = j :=
  ⟨⟨j.val % 2, Nat.mod_lt _ (by decide)⟩, ⟨j.val / 2, by omega⟩, Fin.ext (by simp only [wIx]; omega)⟩

theorem tileX_eq (c : Fin 2) (i : Fin 16) :
    tileX c.val i.val c.isLt i.isLt = Rect.part (s := S4x4096x1024) (a₀ := 1) hdivX (wIx c i) := by
  unfold tileX Rect.part Rect.block
  congr 1 <;> funext a
  · match a with
    | 0 => simp [Shape.partIx, Shape.partSize]
    | 1 => simp [Shape.partIx, Shape.partSize, wIx]; omega
    | 2 => simp [Shape.partIx, Shape.partSize]
  · match a with
    | 0 => simp [Shape.partSize]
    | 1 => simp [Shape.partSize]
    | 2 => simp [Shape.partSize]

theorem tileP_eq (c : Fin 2) (i : Fin 16) :
    tileP c.val i.val c.isLt i.isLt = Rect.part (s := S4096x1024) (a₀ := 0) hdivP (wIx c i) := by
  unfold tileP Rect.part Rect.block
  congr 1 <;> funext a
  · match a with
    | 0 => simp [Shape.partIx, Shape.partSize, wIx]; omega
    | 1 => simp [Shape.partIx, Shape.partSize]
  · match a with
    | 0 => simp [Shape.partSize]
    | 1 => simp [Shape.partSize]

theorem xSet_eq (c : Fin 2) (i : Fin 16) : xSet c.val i.val c.isLt i.isLt = (tileX c.val i.val c.isLt i.isLt).set := by
  unfold xSet View.setOn; exact Finset.map_refl
theorem oSet_eq (c : Fin 2) (i : Fin 16) : oSet c.val i.val c.isLt i.isLt = (tileX c.val i.val c.isLt i.isLt).set := by
  unfold oSet View.setOn; exact Finset.map_refl
theorem pSet_eq (c : Fin 2) (i : Fin 16) : pSet c.val i.val c.isLt i.isLt = (tileP c.val i.val c.isLt i.isLt).set := by
  unfold pSet View.setOn; exact Finset.map_refl

theorem tileX_disjoint {c c' : Fin 2} {i i' : Fin 16} (h : ¬ (c = c' ∧ i = i')) :
    Disjoint (tileX c.val i.val c.isLt i.isLt).set (tileX c'.val i'.val c'.isLt i'.isLt).set := by
  rw [tileX_eq, tileX_eq]; exact Rect.part_disjoint hdivX fun e => h (wIx_inj e)
theorem tileP_disjoint {c c' : Fin 2} {i i' : Fin 16} (h : ¬ (c = c' ∧ i = i')) :
    Disjoint (tileP c.val i.val c.isLt i.isLt).set (tileP c'.val i'.val c'.isLt i'.isLt).set := by
  rw [tileP_eq, tileP_eq]; exact Rect.part_disjoint hdivP fun e => h (wIx_inj e)

theorem tileX_cover (x : S4x4096x1024.Idx) : ∃ (c : Fin 2) (i : Fin 16), x ∈ (tileX c.val i.val c.isLt i.isLt).set := by
  obtain ⟨j, hj⟩ := Rect.exists_mem_part hdivX x
  obtain ⟨c, i, rfl⟩ := wIx_surj j
  exact ⟨c, i, by rw [tileX_eq]; exact hj⟩
theorem tileP_cover (x : S4096x1024.Idx) : ∃ (c : Fin 2) (i : Fin 16), x ∈ (tileP c.val i.val c.isLt i.isLt).set := by
  obtain ⟨j, hj⟩ := Rect.exists_mem_part hdivP x
  obtain ⟨c, i, rfl⟩ := wIx_surj j
  exact ⟨c, i, by rw [tileP_eq]; exact hj⟩

theorem pointsTo_grid {ℓ : Loc nD τ sig} (G : Fin 2 → Fin 16 → Finset (Idx ℓ))
    (hd : ∀ {c c' : Fin 2} {i i' : Fin 16}, ¬ (c = c' ∧ i = i') → Disjoint (G c i) (G c' i'))
    (hc : ∀ x, ∃ c i, x ∈ G c i) (q : PosShare TreeShare) (f : Buf (Elt F) ℓ) :
    (ℓ ↦{q} f : sProp 𝕄) = bigSep Finset.univ fun c : Fin 2 => bigSep Finset.univ fun i : Fin 16 => ℓ ↦[G c i]{q} f := by
  have hcov : (Finset.univ : Finset (Fin 2)).biUnion (fun c => (Finset.univ : Finset (Fin 16)).biUnion (G c)) = Finset.univ := by
    ext x
    simp only [Finset.mem_biUnion, Finset.mem_univ, true_and, iff_true]
    exact hc x
  rw [← hcov, pointsTo_biUnion Finset.univ (ℓ := ℓ) (fun c => (Finset.univ : Finset (Fin 16)).biUnion (G c))]
  · exact bigSep_congr fun c _ => pointsTo_biUnion Finset.univ (ℓ := ℓ) (G c) fun i _ i' _ h => hd fun e => h e.2
  · intro c _ c' _ h
    refine (Finset.disjoint_biUnion_left _ _ _).mpr fun i _ => (Finset.disjoint_biUnion_right _ _ _).mpr fun i' _ => hd fun e => h e.1

section Launch

variable (m : (ℓ : Loc nD τ sig) → Buf (Elt F) ℓ) (ρ : Dev nD → PrngReg)

theorem xWhole_rows (d : Dev nD) (q : PosShare TreeShare) (f : Buf (Elt F) (xLoc d)) :
    (xLoc d ↦{q} f : sProp 𝕄)
      = bigSep Finset.univ fun c : Fin 2 => bigSep Finset.univ fun i : Fin 16 => xLoc d ↦[xSet c.val i.val c.isLt i.isLt]{q} f :=
  pointsTo_grid (ℓ := xLoc d) (fun c i => xSet c.val i.val c.isLt i.isLt)
    (fun h => by rw [xSet_eq, xSet_eq]; exact tileX_disjoint h) (fun x => by simp only [xSet_eq]; exact tileX_cover x) q f
theorem pWhole_rows (d : Dev nD) (q : PosShare TreeShare) (f : Buf (Elt F) (pLoc d)) :
    (pLoc d ↦{q} f : sProp 𝕄)
      = bigSep Finset.univ fun c : Fin 2 => bigSep Finset.univ fun i : Fin 16 => pLoc d ↦[pSet c.val i.val c.isLt i.isLt]{q} f :=
  pointsTo_grid (ℓ := pLoc d) (fun c i => pSet c.val i.val c.isLt i.isLt)
    (fun h => by rw [pSet_eq, pSet_eq]; exact tileP_disjoint h) (fun x => by simp only [pSet_eq]; exact tileP_cover x) q f
theorem oWhole_rows (d : Dev nD) (q : PosShare TreeShare) (f : Buf (Elt F) (oLoc d)) :
    (oLoc d ↦{q} f : sProp 𝕄)
      = bigSep Finset.univ fun c : Fin 2 => bigSep Finset.univ fun i : Fin 16 => oLoc d ↦[oSet c.val i.val c.isLt i.isLt]{q} f :=
  pointsTo_grid (ℓ := oLoc d) (fun c i => oSet c.val i.val c.isLt i.isLt)
    (fun h => by rw [oSet_eq, oSet_eq]; exact tileX_disjoint h) (fun x => by simp only [oSet_eq]; exact tileX_cover x) q f

/-- An array held whole is the thirty-two tasks' rows held one by one: the tasks cut the sequence axis into 128-row parts. -/
theorem whole_tasks (d : Dev nD) (f : Buf (Elt F) (oLoc d)) :
    (iprop((xLoc d ↦{rsh} m (xLoc d)) ∗ (pLoc d ↦{rsh} mp m d) ∗ oLoc d ↦{fullShare} f) : sProp 𝕄)
      = bigSep Finset.univ fun c : Fin 2 => bigSep Finset.univ fun i : Fin 16 =>
          iprop(xRows m d c.val i.val c.isLt i.isLt ∗ pRows m d c.val i.val c.isLt i.isLt ∗ oRows d c.val i.val c.isLt i.isLt f) := by
  rw [xWhole_rows d rsh, pWhole_rows d rsh, oWhole_rows d fullShare, ← bigSep_sep', ← bigSep_sep']
  refine bigSep_congr fun c _ => ?_
  rw [← bigSep_sep', ← bigSep_sep']

theorem result_tasks (d : Dev nD) (f : Buf (Elt F) (oLoc d)) :
    (oLoc d ↦{fullShare} f : sProp 𝕄)
      = bigSep Finset.univ fun c : Fin 2 => bigSep Finset.univ fun i : Fin 16 => oRows d c.val i.val c.isLt i.isLt f :=
  oWhole_rows d fullShare f

variable [FloatOps F]

theorem P_st (d : Dev nD) (c : Fin ((K (F := F)).nCore 0)) :
    (P m).st 0 d c = bigSep Finset.univ fun i : Fin 16 => goOf m d c.val i.val c.isLt i.isLt := by unfold P; rfl
theorem P_dn (d : Dev nD) (c : Fin ((K (F := F)).nCore 0)) :
    (P m).dn 0 d c = bigSep Finset.univ fun i : Fin 16 => tdOf m d c.val i.val c.isLt i.isLt := by unfold P; rfl
theorem P_go (d : Dev nD) (c : Fin ((K (F := F)).nCore 0)) (i : Fin ((K (F := F)).nSub 0)) :
    (P m).go 0 d c i = goOf m d c.val i.val c.isLt i.isLt := by unfold P; rfl
theorem P_td (d : Dev nD) (c : Fin ((K (F := F)).nCore 0)) (i : Fin ((K (F := F)).nSub 0)) :
    (P m).td 0 d c i = tdOf m d c.val i.val c.isLt i.isLt := by unfold P; rfl

theorem vecSplit : (K (F := F)).VecSplit' (P m) 0 := by
  intro d c
  rw [P_st, P_dn]
  simp only [P_go, P_td]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev x' : DevRef τ sig := Proc.devRef .tc (main_arg0 : Ref sig .tc)
abbrev t' : DevRef τ sig := Proc.devRef .tc (main_arg1 : Ref sig .tc)
abbrev p' : DevRef τ sig := Proc.devRef .tc (main_v0 : Ref sig .tc)
abbrev o' : DevRef τ sig := Proc.devRef .tc (main_v1 : Ref sig .tc)

abbrev sliceFn : (⟨S8192x1024, .f32⟩ : BufTy).Contents (Elt F) → (⟨S4096x1024, .f32⟩ : BufTy).Contents (Elt F) :=
  (extractStridedSlice S4096x1024 ![0, 0] · slices_S8192x1024_S4096x1024_0_0)
abbrev opSlice : HloOp τ sig (Elt F) := StableHlo.unary main_arg1 main_v0 (sliceFn (F := F))

abbrev S4 : Finset (DevRef τ sig) := {x', t', p', o'}

omit [FloatOps F] in
theorem held_S4 (d : Dev nD) (W : Valuation τ sig (Elt F)) :
    (held (T d) S4 W : sProp 𝕄)
      = iprop((xLoc d ↦{fullShare} W x') ∗ (tLoc d ↦{fullShare} W t') ∗ (pLoc d ↦{fullShare} W p') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (pLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
theorem hSlice : (opSlice (F := F)).bufs ⊆ S4 := show ({t', p'} : Finset (DevRef τ sig)) ⊆ S4 by decide

omit [FloatOps F] in

theorem held_V1 (d : Dev nD) :
    (held (T d) S4 ((opSlice (F := F)).result (V0 m d)) : sProp 𝕄)
      = iprop((xLoc d ↦{fullShare} m (xLoc d)) ∗ (tLoc d ↦{fullShare} m (tLoc d)) ∗ (pLoc d ↦{fullShare} mp m d) ∗ oLoc d ↦{fullShare} m (oLoc d)) := by
  have hx : (opSlice (F := F)).result (V0 m d) x' = m (xLoc d) :=
    StableHlo.unary_result_ne main_arg1 main_v0 (sliceFn (F := F)) _ _ (V0 m d) (show (main_arg0 : Ref sig .tc) ≠ main_v0 by decide)
  have ht : (opSlice (F := F)).result (V0 m d) t' = m (tLoc d) :=
    StableHlo.unary_result_ne main_arg1 main_v0 (sliceFn (F := F)) _ _ (V0 m d) (show (main_arg1 : Ref sig .tc) ≠ main_v0 by decide)
  have hp : (opSlice (F := F)).result (V0 m d) p' = mp m d :=
    (StableHlo.unary_result main_arg1 main_v0 (sliceFn (F := F)) _ _ (V0 m d)).trans rfl
  have ho : (opSlice (F := F)).result (V0 m d) o' = m (oLoc d) :=
    StableHlo.unary_result_ne main_arg1 main_v0 (sliceFn (F := F)) _ _ (V0 m d) (show (main_v1 : Ref sig .tc) ≠ main_v0 by decide)
  rw [held_S4, hx, ht, hp, ho]

theorem st0_eq (d : Dev nD) :
    (bigSep Finset.univ fun c : Fin ((K (F := F)).nCore 0) => (P m).st 0 d c)
      = iprop((xLoc d ↦{rsh} m (xLoc d)) ∗ (pLoc d ↦{rsh} mp m d) ∗ oLoc d ↦{fullShare} m (oLoc d)) := by
  simp only [P_st]; exact (whole_tasks m d (m (oLoc d))).symm
theorem dn0_eq (d : Dev nD) :
    (bigSep Finset.univ fun c : Fin ((K (F := F)).nCore 0) => (P m).dn 0 d c)
      = (oLoc d ↦{fullShare} mres m d : sProp 𝕄) := by
  simp only [P_dn]; exact (result_tasks d (mres m d)).symm

abbrev FIN (d : Dev nD) : sProp 𝕄 :=
  iprop((xLoc d ↦{fullShare.right} m (xLoc d)) ∗ (tLoc d ↦{fullShare} m (tLoc d)) ∗ oLoc d ↦{fullShare} mres m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opSlice) (S := S4) hSlice (V := V0 m d)) $$ [Hb Hheld]
  · isplitl [Hb]; · iexact Hb
    iexact Hheld
  iintro ⟨Hb, Hheld⟩
  ihave Hh := (Entails.of_eq (held_V1 m d)) $$ Hheld
  icases Hh with ⟨Hx, Ht, Hp, Ho⟩
  rw [wp_ret]; imodintro
  ihave Hx2 := (pointsTo_share (PosShare.mem_left_op_right fullShare)).1 $$ Hx
  icases Hx2 with ⟨HxL, HxR⟩
  ihave Hp2 := (pointsTo_share (PosShare.mem_left_op_right fullShare)).1 $$ Hp
  icases Hp2 with ⟨HpL, -⟩
  iapply ((K (F := F)).wp_run (D (F := F)) 𝒱 (EH := EH) (P := P m) κ d 0) $$ [Hst HxL HxR Ht HpL Ho]
  isplitr; · iexact Hctx
  isplitl [Hst]; · iexact Hst
  isplitl [HxL HpL Ho]
  · rw [st0_eq]
    isplitl [HxL]; · iexact HxL
    isplitl [HpL]; · iexact HpL
    iexact Ho
  iintro ⟨Hst, Hdn⟩
  ihave Ho := (Entails.of_eq (dn0_eq m d)) $$ Hdn
  imodintro
  isplitl [Hst]; · iexact Hst
  isplitl [HxR]; · iexact HxR
  isplitl [Ht]; · iexact Ht
  iexact Ho

def fq (d : Dev nD) (s' : Phys nD τ sig (Elt F)) : Prop :=
  s'.mem.mem (oLoc d) = mres m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare.right) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := mres m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

end Launch

variable [FloatOps F]

/-- The program runs to its end with the result at activation plus table row, entry by entry, and its two arguments as they were. -/
theorem run_main [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => ∀ c : Dev nD, r.2.mem (oLoc c) = mres m c ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.BCommon.lean ====
import proofs.«210091_g81140522156176_cont_9to1_m_468_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210091_g81140522156176_cont_9to1_m_468_11_alg».proof.Proof.Gen.Kernel
import proofs.«210091_g81140522156176_cont_9to1_m_468_11_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1

abbrev xV : Memref sig .scVector .hbm S4x4096x1024 .f32 := Memref.whole main_arg0_scv
abbrev pV : Memref sig .scVector .hbm S4096x1024 .f32 := Memref.whole main_v0_scv
abbrev oV : Memref sig .scVector .hbm S4x4096x1024 .f32 := Memref.whole main_v1_scv

def mp (d : Dev nD) : Buf (Elt F) (pLoc d) :=
  extractStridedSlice S4096x1024 ![0, 0] (m (tLoc d)) slices_S8192x1024_S4096x1024_0_0

def mres [FloatOps F] (d : Dev nD) : Buf (Elt F) (oLoc d) :=
  Cert.Spec.GQ (F := F) (m (xLoc d)) (mp m d)

theorem tileX_inb (c s : ℕ) (hc : c < 2) (hs : s < 16) :
    ∀ a, (![0, 256 * s + 128 * c, 0] : Fin 3 → Nat) a + (![4, 128, 1024] : Fin 3 → Nat) a ≤ S4x4096x1024.size a := by
  intro a; fin_cases a <;> simp <;> omega
theorem tileP_inb (c s : ℕ) (hc : c < 2) (hs : s < 16) :
    ∀ a, (![256 * s + 128 * c, 0] : Fin 2 → Nat) a + (![128, 1024] : Fin 2 → Nat) a ≤ S4096x1024.size a := by
  intro a; fin_cases a <;> simp <;> omega

def tileX (c s : ℕ) (hc : c < 2) (hs : s < 16) : Rect S4x4096x1024 :=
  Rect.unit (s := S4x4096x1024) ![0, 256 * s + 128 * c, 0] ![4, 128, 1024] (tileX_inb c s hc hs)
def tileP (c s : ℕ) (hc : c < 2) (hs : s < 16) : Rect S4096x1024 :=
  Rect.unit (s := S4096x1024) ![256 * s + 128 * c, 0] ![128, 1024] (tileP_inb c s hc hs)

abbrev xSet (c s : ℕ) (hc : c < 2) (hs : s < 16) : Finset S4x4096x1024.Idx := (xV : Memref sig .scVector .hbm S4x4096x1024 .f32).view.setOn (tileX c s hc hs).set
abbrev pSet (c s : ℕ) (hc : c < 2) (hs : s < 16) : Finset S4096x1024.Idx := (pV : Memref sig .scVector .hbm S4096x1024 .f32).view.setOn (tileP c s hc hs).set
abbrev oSet (c s : ℕ) (hc : c < 2) (hs : s < 16) : Finset S4x4096x1024.Idx := (oV : Memref sig .scVector .hbm S4x4096x1024 .f32).view.setOn (tileX c s hc hs).set

abbrev rsh : PosShare TreeShare := fullShare.left

abbrev xRows (d : Dev nD) (c s : ℕ) (hc : c < 2) (hs : s < 16) : sProp 𝕄 := xLoc d ↦[xSet c s hc hs]{rsh} m (xLoc d)
abbrev pRows (d : Dev nD) (c s : ℕ) (hc : c < 2) (hs : s < 16) : sProp 𝕄 := pLoc d ↦[pSet c s hc hs]{rsh} mp m d
abbrev oRows (d : Dev nD) (c s : ℕ) (hc : c < 2) (hs : s < 16) (f : Buf (Elt F) (oLoc d)) : sProp 𝕄 := oLoc d ↦[oSet c s hc hs]{fullShare} f

variable [FloatOps F]

abbrev goOf (d : Dev nD) (c s : ℕ) (hc : c < 2) (hs : s < 16) : sProp 𝕄 :=
  iprop(xRows m d c s hc hs ∗ pRows m d c s hc hs ∗ oRows d c s hc hs (m (oLoc d)))
abbrev tdOf (d : Dev nD) (c s : ℕ) (hc : c < 2) (hs : s < 16) : sProp 𝕄 :=
  oRows d c s hc hs (mres m d)

def P : (K (F := F)).Pay (nD := nD) (Val := Elt F) (Name := ℕ) (U := UU) where
  st := fun q d c => match q with
    | 0 => bigSep Finset.univ fun i : Fin 16 => goOf m d c.val i.val c.isLt i.isLt
  dn := fun q d c => match q with
    | 0 => bigSep Finset.univ fun i : Fin 16 => tdOf m d c.val i.val c.isLt i.isLt
  go := fun q d c i => match q with
    | 0 => goOf m d c.val i.val c.isLt i.isLt
  td := fun q d c i => match q with
    | 0 => tdOf m d c.val i.val c.isLt i.isLt
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.BSlots.lean ====
import proofs.«210091_g81140522156176_cont_9to1_m_468_11_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev pB : Memref sig .scVector .vmem S4x4x1024 .f32 := Memref.whole cc0_scratch0
abbrev xB : Memref sig .scVector .vmem S4x4x4x1024 .f32 := Memref.whole cc0_scratch1
abbrev sB : Memref sig .scVector .vmem S2x4x4x1024 .f32 := Memref.whole cc0_scratch2

abbrev pS0 : Memref sig .scVector .vmem S4x1024 .f32 :=
  (pB.slice (Rect.unit (s := S4x4x1024) ![0, 0, 0] S1x4x1024.size inb_S4x4x1024_S1x4x1024_0_0_0) (fun _ => rfl)).squeeze S4x1024 squeezes_S1x4x1024_S4x1024
abbrev pS1 : Memref sig .scVector .vmem S4x1024 .f32 :=
  (pB.slice (Rect.unit (s := S4x4x1024) ![1, 0, 0] S1x4x1024.size inb_S4x4x1024_S1x4x1024_1_0_0) (fun _ => rfl)).squeeze S4x1024 squeezes_S1x4x1024_S4x1024
abbrev pS2 : Memref sig .scVector .vmem S4x1024 .f32 :=
  (pB.slice (Rect.unit (s := S4x4x1024) ![2, 0, 0] S1x4x1024.size inb_S4x4x1024_S1x4x1024_2_0_0) (fun _ => rfl)).squeeze S4x1024 squeezes_S1x4x1024_S4x1024
abbrev pS3 : Memref sig .scVector .vmem S4x1024 .f32 :=
  (pB.slice (Rect.unit (s := S4x4x1024) ![3, 0, 0] S1x4x1024.size inb_S4x4x1024_S1x4x1024_3_0_0) (fun _ => rfl)).squeeze S4x1024 squeezes_S1x4x1024_S4x1024

abbrev xS00 : Memref sig .scVector .vmem S4x1024 .f32 :=
  (xB.slice (Rect.unit (s := S4x4x4x1024) ![0, 0, 0, 0] S1x1x4x1024.size inb_S4x4x4x1024_S1x1x4x1024_0_0_0_0) (fun _ => rfl)).squeeze S4x1024 squeezes_S1x1x4x1024_S4x1024
abbrev xS01 : Memref sig .scVector .vmem S4x1024 .f32 :=
  (xB.slice (Rect.unit (s := S4x4x4x1024) ![0, 1, 0, 0] S1x1x4x1024.size inb_S4x4x4x1024_S1x1x4x1024_0_1_0_0) (fun _ => rfl)).squeeze S4x1024 squeezes_S1x1x4x1024_S4x1024
abbrev xS02 : Memref sig .scVector .vmem S4x1024 .f32 :=
  (xB.slice (Rect.unit (s := S4x4x4x1024) ![0, 2, 0, 0] S1x1x4x1024.size inb_S4x4x4x1024_S1x1x4x1024_0_2_0_0) (fun _ => rfl)).squeeze S4x1024 squeezes_S1x1x4x1024_S4x1024
abbrev xS03 : Memref sig .scVector .vmem S4x1024 .f32 :=
  (xB.slice (Rect.unit (s := S4x4x4x1024) ![0, 3, 0, 0] S1x1x4x1024.size inb_S4x4x4x1024_S1x1x4x1024_0_3_0_0) (fun _ => rfl)).squeeze S4x1024 squeezes_S1x1x4x1024_S4x1024
abbrev xS10 : Memref sig .scVector .vmem S4x1024 .f32 :=
  (xB.slice (Rect.unit (s := S4x4x4x1024) ![1, 0, 0, 0] S1x1x4x1024.size inb_S4x4x4x1024_S1x1x4x1024_1_0_0_0) (fun _ => rfl)).squeeze S4x1024 squeezes_S1x1x4x1024_S4x1024
abbrev xS11 : Memref sig .scVector .vmem S4x1024 .f32 :=
  (xB.slice (Rect.unit (s := S4x4x4x1024) ![1, 1, 0, 0] S1x1x4x1024.size inb_S4x4x4x1024_S1x1x4x1024_1_1_0_0) (fun _ => rfl)).squeeze S4x1024 squeezes_S1x1x4x1024_S4x1024
abbrev xS12 : Memref sig .scVector .vmem S4x1024 .f32 :=
  (xB.slice (Rect.unit (s := S4x4x4x1024) ![1, 2, 0, 0] S1x1x4x1024.size inb_S4x4x4x1024_S1x1x4x1024_1_2_0_0) (fun _ => rfl)).squeeze S4x1024 squeezes_S1x1x4x1024_S4x1024
abbrev xS13 : Memref sig .scVector .vmem S4x1024 .f32 :=
  (xB.slice (Rect.unit (s := S4x4x4x1024) ![1, 3, 0, 0] S1x1x4x1024.size inb_S4x4x4x1024_S1x1x4x1024_1_3_0_0) (fun _ => rfl)).squeeze S4x1024 squeezes_S1x1x4x1024_S4x1024
abbrev xS20 : Memref sig .scVector .vmem S4x1024 .f32 :=
  (xB.slice (Rect.unit (s := S4x4x4x1024) ![2, 0, 0, 0] S1x1x4x1024.size inb_S4x4x4x1024_S1x1x4x1024_2_0_0_0) (fun _ => rfl)).squeeze S4x1024 squeezes_S1x1x4x1024_S4x1024
abbrev xS21 : Memref sig .scVector .vmem S4x1024 .f32 :=
  (xB.slice (Rect.unit (s := S4x4x4x1024) ![2, 1, 0, 0] S1x1x4x1024.size inb_S4x4x4x1024_S1x1x4x1024_2_1_0_0) (fun _ => rfl)).squeeze S4x1024 squeezes_S1x1x4x1024_S4x1024
abbrev xS22 : Memref sig .scVector .vmem S4x1024 .f32 :=
  (xB.slice (Rect.unit (s := S4x4x4x1024) ![2, 2, 0, 0] S1x1x4x1024.size inb_S4x4x4x1024_S1x1x4x1024_2_2_0_0) (fun _ => rfl)).squeeze S4x1024 squeezes_S1x1x4x1024_S4x1024
abbrev xS23 : Memref sig .scVector .vmem S4x1024 .f32 :=
  (xB.slice (Rect.unit (s := S4x4x4x1024) ![2, 3, 0, 0] S1x1x4x1024.size inb_S4x4x4x1024_S1x1x4x1024_2_3_0_0) (fun _ => rfl)).squeeze S4x1024 squeezes_S1x1x4x1024_S4x1024
abbrev xS30 : Memref sig .scVector .vmem S4x1024 .f32 :=
  (xB.slice (Rect.unit (s := S4x4x4x1024) ![3, 0, 0, 0] S1x1x4x1024.size inb_S4x4x4x1024_S1x1x4x1024_3_0_0_0) (fun _ => rfl)).squeeze S4x1024 squeezes_S1x1x4x1024_S4x1024
abbrev xS31 : Memref sig .scVector .vmem S4x1024 .f32 :=
  (xB.slice (Rect.unit (s := S4x4x4x1024) ![3, 1, 0, 0] S1x1x4x1024.size inb_S4x4x4x1024_S1x1x4x1024_3_1_0_0) (fun _ => rfl)).squeeze S4x1024 squeezes_S1x1x4x1024_S4x1024
abbrev xS32 : Memref sig .scVector .vmem S4x1024 .f32 :=
  (xB.slice (Rect.unit (s := S4x4x4x1024) ![3, 2, 0, 0] S1x1x4x1024.size inb_S4x4x4x1024_S1x1x4x1024_3_2_0_0) (fun _ => rfl)).squeeze S4x1024 squeezes_S1x1x4x1024_S4x1024
abbrev xS33 : Memref sig .scVector .vmem S4x1024 .f32 :=
  (xB.slice (Rect.unit (s := S4x4x4x1024) ![3, 3, 0, 0] S1x1x4x1024.size inb_S4x4x4x1024_S1x1x4x1024_3_3_0_0) (fun _ => rfl)).squeeze S4x1024 squeezes_S1x1x4x1024_S4x1024

theorem pointsTo_cover {T : Type} [Fintype T] [DecidableEq T] {ℓ : Loc nD τ sig} (G : T → Finset (Idx ℓ))
    (hd : ∀ t t', t ≠ t' → Disjoint (G t) (G t')) (hc : ∀ x, ∃ t, x ∈ G t) (f : Buf (Elt F) ℓ) :
    (ℓ ↦{fullShare} f : sProp 𝕄) = bigSep Finset.univ fun t : T => ℓ ↦[G t]{fullShare} f := by
  have hcov : (Finset.univ : Finset T).biUnion G = Finset.univ := by
    ext x; simp only [Finset.mem_biUnion, Finset.mem_univ, true_and, iff_true]; exact hc x
  rw [← hcov, pointsTo_biUnion Finset.univ (ℓ := ℓ) G fun t _ t' _ h => hd t t' h]

theorem pointsTo_cover_join {T : Type} [Fintype T] [DecidableEq T] [Inhabited T] {ℓ : Loc nD τ sig} (G : T → Finset (Idx ℓ))
    (hd : ∀ t t', t ≠ t' → Disjoint (G t) (G t')) (hc : ∀ x, ∃ t, x ∈ G t) (fs : T → Buf (Elt F) ℓ) :
    (bigSep Finset.univ fun t : T => ℓ ↦[G t]{fullShare} fs t) ⊢ (iprop(∃ f, ℓ ↦{fullShare} f) : sProp 𝕄) := by
  have hcov : (Finset.univ : Finset T).biUnion G = Finset.univ := by
    ext x; simp only [Finset.mem_biUnion, Finset.mem_univ, true_and, iff_true]; exact hc x
  refine (pointsTo_biUnion_join Finset.univ G fs (fs default) fun t _ t' _ h => hd t t' h).trans ?_
  iintro ⟨%g, -, Hg⟩
  rw [hcov]
  iexists g; iexact Hg

theorem sep_congr' {A A' B B' : sProp 𝕄} (h1 : A = A') (h2 : B = B') : (iprop(A ∗ B) : sProp 𝕄) = iprop(A' ∗ B') := by rw [h1, h2]

theorem pInb (k : Fin 4) : ∀ a, (![k.val, 0, 0] : Fin 3 → Nat) a + S1x4x1024.size a ≤ S4x4x1024.size a := by
  intro a; fin_cases a <;> simp <;> omega
abbrev pRect (k : Fin 4) : Rect S4x4x1024 := Rect.unit (s := S4x4x1024) ![k.val, 0, 0] S1x4x1024.size (pInb k)

theorem pRect_disjoint (k k' : Fin 4) (h : k ≠ k') : Disjoint (pRect k).set (pRect k').set := by
  have hv : k.val ≠ k'.val := fun e => h (Fin.ext e)
  exact Rect.unit_disjoint 0 (by simp; omega)

theorem pRect_cover (x : S4x4x1024.Idx) : ∃ k : Fin 4, x ∈ (pRect k).set := by
  refine ⟨⟨(x 0).val, (x 0).isLt⟩, Rect.mem_set_unit.mpr fun a => ?_⟩
  have h1 : (x 1).val < 4 := (x 1).isLt
  have h2 : (x 2).val < 1024 := (x 2).isLt
  match a with
  | 0 => simp
  | 1 => simp; omega
  | 2 => simp; omega

theorem pB_slot_set (off : Fin 3 → Nat) (inb : ∀ a, off a + S1x4x1024.size a ≤ S4x4x1024.size a) :
    (((pB : Memref sig .scVector .vmem S4x4x1024 .f32).slice (Rect.unit (s := S4x4x1024) off S1x4x1024.size inb) (fun _ => rfl)).squeeze S4x1024
        squeezes_S1x4x1024_S4x1024).view.set
      = (Rect.unit (s := S4x4x1024) off S1x4x1024.size inb).set := by
  show (((View.whole (cc0_scratch0 : Ref sig .scVector)).slice (Rect.unit (s := S4x4x1024) off S1x4x1024.size inb)).reshape S4x1024
      squeezes_S1x4x1024_S4x1024.numel_eq).set = _
  rw [View.set_reshape, View.set_slice_whole]

theorem pS0_set : (pS0 : Memref sig .scVector .vmem S4x1024 .f32).view.set = (pRect 0).set := pB_slot_set _ _
theorem pS1_set : (pS1 : Memref sig .scVector .vmem S4x1024 .f32).view.set = (pRect 1).set := pB_slot_set _ _
theorem pS2_set : (pS2 : Memref sig .scVector .vmem S4x1024 .f32).view.set = (pRect 2).set := pB_slot_set _ _
theorem pS3_set : (pS3 : Memref sig .scVector .vmem S4x1024 .f32).view.set = (pRect 3).set := pB_slot_set _ _

theorem pS0_pts (d : Dev nD) (c : Fin τ.nSC) (i : Fin τ.nSub) (f : Buf (Elt F) ((V d c i).loc cc0_scratch0)) :
    (pS0.view.loc (V d c i) ↦[pS0.view.set]{fullShare} f : sProp 𝕄) = ((V d c i).loc cc0_scratch0 ↦[(pRect 0).set]{fullShare} f) := by rw [pS0_set]
theorem pS1_pts (d : Dev nD) (c : Fin τ.nSC) (i : Fin τ.nSub) (f : Buf (Elt F) ((V d c i).loc cc0_scratch0)) :
    (pS1.view.loc (V d c i) ↦[pS1.view.set]{fullShare} f : sProp 𝕄) = ((V d c i).loc cc0_scratch0 ↦[(pRect 1).set]{fullShare} f) := by rw [pS1_set]
theorem pS2_pts (d : Dev nD) (c : Fin τ.nSC) (i : Fin τ.nSub) (f : Buf (Elt F) ((V d c i).loc cc0_scratch0)) :
    (pS2.view.loc (V d c i) ↦[pS2.view.set]{fullShare} f : sProp 𝕄) = ((V d c i).loc cc0_scratch0 ↦[(pRect 2).set]{fullShare} f) := by rw [pS2_set]
theorem pS3_pts (d : Dev nD) (c : Fin τ.nSC) (i : Fin τ.nSub) (f : Buf (Elt F) ((V d c i).loc cc0_scratch0)) :
    (pS3.view.loc (V d c i) ↦[pS3.view.set]{fullShare} f : sProp 𝕄) = ((V d c i).loc cc0_scratch0 ↦[(pRect 3).set]{fullShare} f) := by rw [pS3_set]

theorem univ_fin4 : (Finset.univ : Finset (Fin 4)) = {0, 1, 2, 3} := by decide
theorem bigSep_fin4 (Φ : Fin 4 → sProp 𝕄) : bigSep Finset.univ Φ = iprop(Φ 0 ∗ Φ 1 ∗ Φ 2 ∗ Φ 3) := by
  rw [univ_fin4, SparseCore.bigSep_insert' (by decide), SparseCore.bigSep_insert' (by decide), SparseCore.bigSep_insert' (by decide), bigSep_singleton]

/-- The table-row buffer held whole is its four slots held one by one at the same contents. -/
theorem pvb_slots (d : Dev nD) (c : Fin τ.nSC) (i : Fin τ.nSub) (f : Buf (Elt F) ((V d c i).loc cc0_scratch0)) :
    ((V d c i).loc cc0_scratch0 ↦{fullShare} f : sProp 𝕄)
      = iprop((pS0.view.loc (V d c i) ↦[pS0.view.set]{fullShare} f)
        ∗ (pS1.view.loc (V d c i) ↦[pS1.view.set]{fullShare} f)
        ∗ (pS2.view.loc (V d c i) ↦[pS2.view.set]{fullShare} f)
        ∗ (pS3.view.loc (V d c i) ↦[pS3.view.set]{fullShare} f)) := by
  exact (pointsTo_cover (ℓ := (V d c i).loc cc0_scratch0) (fun k : Fin 4 => (pRect k).set) pRect_disjoint pRect_cover f).trans
    ((bigSep_fin4 _).trans (sep_congr' (pS0_pts d c i f).symm (sep_congr' (pS1_pts d c i f).symm (sep_congr' (pS2_pts d c i f).symm ((pS3_pts d c i f).symm)))))

theorem pvb_join (d : Dev nD) (c : Fin τ.nSC) (i : Fin τ.nSub) (f0 f1 f2 f3 : Buf (Elt F) ((V d c i).loc cc0_scratch0)) :
    iprop((pS0.view.loc (V d c i) ↦[pS0.view.set]{fullShare} f0)
        ∗ (pS1.view.loc (V d c i) ↦[pS1.view.set]{fullShare} f1)
        ∗ (pS2.view.loc (V d c i) ↦[pS2.view.set]{fullShare} f2)
        ∗ (pS3.view.loc (V d c i) ↦[pS3.view.set]{fullShare} f3))
      ⊢ (iprop(∃ f, (V d c i).loc cc0_scratch0 ↦{fullShare} f) : sProp 𝕄) := by
  refine Entails.trans (Entails.of_eq ?_)
    (pointsTo_cover_join (ℓ := (V d c i).loc cc0_scratch0) (fun k : Fin 4 => (pRect k).set) pRect_disjoint pRect_cover ![f0, f1, f2, f3])
  exact (sep_congr' (pS0_pts d c i f0) (sep_congr' (pS1_pts d c i f1) (sep_congr' (pS2_pts d c i f2) ((pS3_pts d c i f3))))).trans
    (bigSep_fin4 (fun k : Fin 4 => ((V d c i).loc cc0_scratch0 ↦[(pRect k).set]{fullShare} ![f0, f1, f2, f3] k : sProp 𝕄))).symm

theorem xInb (k b : Fin 4) : ∀ a, (![k.val, b.val, 0, 0] : Fin 4 → Nat) a + S1x1x4x1024.size a ≤ S4x4x4x1024.size a := by
  intro a; fin_cases a <;> simp <;> omega
abbrev xRect (kb : Fin 4 × Fin 4) : Rect S4x4x4x1024 :=
  Rect.unit (s := S4x4x4x1024) ![kb.1.val, kb.2.val, 0, 0] S1x1x4x1024.size (xInb kb.1 kb.2)

theorem xRect_disjoint (kb kb' : Fin 4 × Fin 4) (h : kb ≠ kb') : Disjoint (xRect kb).set (xRect kb').set := by
  by_cases h0 : kb.1 = kb'.1
  · have hv : kb.2.val ≠ kb'.2.val := fun e => h (Prod.ext h0 (Fin.ext e))
    exact Rect.unit_disjoint 1 (by simp; omega)
  · have hv : kb.1.val ≠ kb'.1.val := fun e => h0 (Fin.ext e)
    exact Rect.unit_disjoint 0 (by simp; omega)

theorem xRect_cover (x : S4x4x4x1024.Idx) : ∃ kb : Fin 4 × Fin 4, x ∈ (xRect kb).set := by
  refine ⟨(⟨(x 0).val, (x 0).isLt⟩, ⟨(x 1).val, (x 1).isLt⟩), Rect.mem_set_unit.mpr fun a => ?_⟩
  have h2 : (x 2).val < 4 := (x 2).isLt
  have h3 : (x 3).val < 1024 := (x 3).isLt
  match a with
  | 0 => simp
  | 1 => simp
  | 2 => simp; omega
  | 3 => simp; omega

theorem xB_slot_set (off : Fin 4 → Nat) (inb : ∀ a, off a + S1x1x4x1024.size a ≤ S4x4x4x1024.size a) :
    (((xB : Memref sig .scVector .vmem S4x4x4x1024 .f32).slice (Rect.unit (s := S4x4x4x1024) off S1x1x4x1024.size inb) (fun _ => rfl)).squeeze S4x1024
        squeezes_S1x1x4x1024_S4x1024).view.set
      = (Rect.unit (s := S4x4x4x1024) off S1x1x4x1024.size inb).set := by
  show (((View.whole (cc0_scratch1 : Ref sig .scVector)).slice (Rect.unit (s := S4x4x4x1024) off S1x1x4x1024.size inb)).reshape S4x1024
      squeezes_S1x1x4x1024_S4x1024.numel_eq).set = _
  rw [View.set_reshape, View.set_slice_whole]

theorem xS00_set : (xS00 : Memref sig .scVector .vmem S4x1024 .f32).view.set = (xRect (0, 0)).set := xB_slot_set _ _
theorem xS01_set : (xS01 : Memref sig .scVector .vmem S4x1024 .f32).view.set = (xRect (0, 1)).set := xB_slot_set _ _
theorem xS02_set : (xS02 : Memref sig .scVector .vmem S4x1024 .f32).view.set = (xRect (0, 2)).set := xB_slot_set _ _
theorem xS03_set : (xS03 : Memref sig .scVector .vmem S4x1024 .f32).view.set = (xRect (0, 3)).set := xB_slot_set _ _
theorem xS10_set : (xS10 : Memref sig .scVector .vmem S4x1024 .f32).view.set = (xRect (1, 0)).set := xB_slot_set _ _
theorem xS11_set : (xS11 : Memref sig .scVector .vmem S4x1024 .f32).view.set = (xRect (1, 1)).set := xB_slot_set _ _
theorem xS12_set : (xS12 : Memref sig .scVector .vmem S4x1024 .f32).view.set = (xRect (1, 2)).set := xB_slot_set _ _
theorem xS13_set : (xS13 : Memref sig .scVector .vmem S4x1024 .f32).view.set = (xRect (1, 3)).set := xB_slot_set _ _
theorem xS20_set : (xS20 : Memref sig .scVector .vmem S4x1024 .f32).view.set = (xRect (2, 0)).set := xB_slot_set _ _
theorem xS21_set : (xS21 : Memref sig .scVector .vmem S4x1024 .f32).view.set = (xRect (2, 1)).set := xB_slot_set _ _
theorem xS22_set : (xS22 : Memref sig .scVector .vmem S4x1024 .f32).view.set = (xRect (2, 2)).set := xB_slot_set _ _
theorem xS23_set : (xS23 : Memref sig .scVector .vmem S4x1024 .f32).view.set = (xRect (2, 3)).set := xB_slot_set _ _
theorem xS30_set : (xS30 : Memref sig .scVector .vmem S4x1024 .f32).view.set = (xRect (3, 0)).set := xB_slot_set _ _
theorem xS31_set : (xS31 : Memref sig .scVector .vmem S4x1024 .f32).view.set = (xRect (3, 1)).set := xB_slot_set _ _
theorem xS32_set : (xS32 : Memref sig .scVector .vmem S4x1024 .f32).view.set = (xRect (3, 2)).set := xB_slot_set _ _
theorem xS33_set : (xS33 : Memref sig .scVector .vmem S4x1024 .f32).view.set = (xRect (3, 3)).set := xB_slot_set _ _

theorem xS00_pts (d : Dev nD) (c : Fin τ.nSC) (i : Fin τ.nSub) (f : Buf (Elt F) ((V d c i).loc cc0_scratch1)) :
    (xS00.view.loc (V d c i) ↦[xS00.view.set]{fullShare} f : sProp 𝕄) = ((V d c i).loc cc0_scratch1 ↦[(xRect (0, 0)).set]{fullShare} f) := by rw [xS00_set]
theorem xS01_pts (d : Dev nD) (c : Fin τ.nSC) (i : Fin τ.nSub) (f : Buf (Elt F) ((V d c i).loc cc0_scratch1)) :
    (xS01.view.loc (V d c i) ↦[xS01.view.set]{fullShare} f : sProp 𝕄) = ((V d c i).loc cc0_scratch1 ↦[(xRect (0, 1)).set]{fullShare} f) := by rw [xS01_set]
theorem xS02_pts (d : Dev nD) (c : Fin τ.nSC) (i : Fin τ.nSub) (f : Buf (Elt F) ((V d c i).loc cc0_scratch1)) :
    (xS02.view.loc (V d c i) ↦[xS02.view.set]{fullShare} f : sProp 𝕄) = ((V d c i).loc cc0_scratch1 ↦[(xRect (0, 2)).set]{fullShare} f) := by rw [xS02_set]
theorem xS03_pts (d : Dev nD) (c : Fin τ.nSC) (i : Fin τ.nSub) (f : Buf (Elt F) ((V d c i).loc cc0_scratch1)) :
    (xS03.view.loc (V d c i) ↦[xS03.view.set]{fullShare} f : sProp 𝕄) = ((V d c i).loc cc0_scratch1 ↦[(xRect (0, 3)).set]{fullShare} f) := by rw [xS03_set]
theorem xS10_pts (d : Dev nD) (c : Fin τ.nSC) (i : Fin τ.nSub) (f : Buf (Elt F) ((V d c i).loc cc0_scratch1)) :
    (xS10.view.loc (V d c i) ↦[xS10.view.set]{fullShare} f : sProp 𝕄) = ((V d c i).loc cc0_scratch1 ↦[(xRect (1, 0)).set]{fullShare} f) := by rw [xS10_set]
theorem xS11_pts (d : Dev nD) (c : Fin τ.nSC) (i : Fin τ.nSub) (f : Buf (Elt F) ((V d c i).loc cc0_scratch1)) :
    (xS11.view.loc (V d c i) ↦[xS11.view.set]{fullShare} f : sProp 𝕄) = ((V d c i).loc cc0_scratch1 ↦[(xRect (1, 1)).set]{fullShare} f) := by rw [xS11_set]
theorem xS12_pts (d : Dev nD) (c : Fin τ.nSC) (i : Fin τ.nSub) (f : Buf (Elt F) ((V d c i).loc cc0_scratch1)) :
    (xS12.view.loc (V d c i) ↦[xS12.view.set]{fullShare} f : sProp 𝕄) = ((V d c i).loc cc0_scratch1 ↦[(xRect (1, 2)).set]{fullShare} f) := by rw [xS12_set]
theorem xS13_pts (d : Dev nD) (c : Fin τ.nSC) (i : Fin τ.nSub) (f : Buf (Elt F) ((V d c i).loc cc0_scratch1)) :
    (xS13.view.loc (V d c i) ↦[xS13.view.set]{fullShare} f : sProp 𝕄) = ((V d c i).loc cc0_scratch1 ↦[(xRect (1, 3)).set]{fullShare} f) := by rw [xS13_set]
theorem xS20_pts (d : Dev nD) (c : Fin τ.nSC) (i : Fin τ.nSub) (f : Buf (Elt F) ((V d c i).loc cc0_scratch1)) :
    (xS20.view.loc (V d c i) ↦[xS20.view.set]{fullShare} f : sProp 𝕄) = ((V d c i).loc cc0_scratch1 ↦[(xRect (2, 0)).set]{fullShare} f) := by rw [xS20_set]
theorem xS21_pts (d : Dev nD) (c : Fin τ.nSC) (i : Fin τ.nSub) (f : Buf (Elt F) ((V d c i).loc cc0_scratch1)) :
    (xS21.view.loc (V d c i) ↦[xS21.view.set]{fullShare} f : sProp 𝕄) = ((V d c i).loc cc0_scratch1 ↦[(xRect (2, 1)).set]{fullShare} f) := by rw [xS21_set]
theorem xS22_pts (d : Dev nD) (c : Fin τ.nSC) (i : Fin τ.nSub) (f : Buf (Elt F) ((V d c i).loc cc0_scratch1)) :
    (xS22.view.loc (V d c i) ↦[xS22.view.set]{fullShare} f : sProp 𝕄) = ((V d c i).loc cc0_scratch1 ↦[(xRect (2, 2)).set]{fullShare} f) := by rw [xS22_set]
theorem xS23_pts (d : Dev nD) (c : Fin τ.nSC) (i : Fin τ.nSub) (f : Buf (Elt F) ((V d c i).loc cc0_scratch1)) :
    (xS23.view.loc (V d c i) ↦[xS23.view.set]{fullShare} f : sProp 𝕄) = ((V d c i).loc cc0_scratch1 ↦[(xRect (2, 3)).set]{fullShare} f) := by rw [xS23_set]
theorem xS30_pts (d : Dev nD) (c : Fin τ.nSC) (i : Fin τ.nSub) (f : Buf (Elt F) ((V d c i).loc cc0_scratch1)) :
    (xS30.view.loc (V d c i) ↦[xS30.view.set]{fullShare} f : sProp 𝕄) = ((V d c i).loc cc0_scratch1 ↦[(xRect (3, 0)).set]{fullShare} f) := by rw [xS30_set]
theorem xS31_pts (d : Dev nD) (c : Fin τ.nSC) (i : Fin τ.nSub) (f : Buf (Elt F) ((V d c i).loc cc0_scratch1)) :
    (xS31.view.loc (V d c i) ↦[xS31.view.set]{fullShare} f : sProp 𝕄) = ((V d c i).loc cc0_scratch1 ↦[(xRect (3, 1)).set]{fullShare} f) := by rw [xS31_set]
theorem xS32_pts (d : Dev nD) (c : Fin τ.nSC) (i : Fin τ.nSub) (f : Buf (Elt F) ((V d c i).loc cc0_scratch1)) :
    (xS32.view.loc (V d c i) ↦[xS32.view.set]{fullShare} f : sProp 𝕄) = ((V d c i).loc cc0_scratch1 ↦[(xRect (3, 2)).set]{fullShare} f) := by rw [xS32_set]
theorem xS33_pts (d : Dev nD) (c : Fin τ.nSC) (i : Fin τ.nSub) (f : Buf (Elt F) ((V d c i).loc cc0_scratch1)) :
    (xS33.view.loc (V d c i) ↦[xS33.view.set]{fullShare} f : sProp 𝕄) = ((V d c i).loc cc0_scratch1 ↦[(xRect (3, 3)).set]{fullShare} f) := by rw [xS33_set]

theorem univ_fin4x4 : (Finset.univ : Finset (Fin 4 × Fin 4))
    = {(0, 0), (0, 1), (0, 2), (0, 3), (1, 0), (1, 1), (1, 2), (1, 3), (2, 0), (2, 1), (2, 2), (2, 3), (3, 0), (3, 1), (3, 2), (3, 3)} := by decide
theorem bigSep_fin4x4 (Φ : Fin 4 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3) ∗ Φ (3, 0) ∗ Φ (3, 1) ∗ Φ (3, 2) ∗ Φ (3, 3)) := by
  rw [univ_fin4x4, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The activation buffer held whole is its sixteen slots held one by one at the same contents. -/
theorem xvb_slots (d : Dev nD) (c : Fin τ.nSC) (i : Fin τ.nSub) (f : Buf (Elt F) ((V d c i).loc cc0_scratch1)) :
    ((V d c i).loc cc0_scratch1 ↦{fullShare} f : sProp 𝕄)
      = iprop((xS00.view.loc (V d c i) ↦[xS00.view.set]{fullShare} f)
        ∗ (xS01.view.loc (V d c i) ↦[xS01.view.set]{fullShare} f)
        ∗ (xS02.view.loc (V d c i) ↦[xS02.view.set]{fullShare} f)
        ∗ (xS03.view.loc (V d c i) ↦[xS03.view.set]{fullShare} f)
        ∗ (xS10.view.loc (V d c i) ↦[xS10.view.set]{fullShare} f)
        ∗ (xS11.view.loc (V d c i) ↦[xS11.view.set]{fullShare} f)
        ∗ (xS12.view.loc (V d c i) ↦[xS12.view.set]{fullShare} f)
        ∗ (xS13.view.loc (V d c i) ↦[xS13.view.set]{fullShare} f)
        ∗ (xS20.view.loc (V d c i) ↦[xS20.view.set]{fullShare} f)
        ∗ (xS21.view.loc (V d c i) ↦[xS21.view.set]{fullShare} f)
        ∗ (xS22.view.loc (V d c i) ↦[xS22.view.set]{fullShare} f)
        ∗ (xS23.view.loc (V d c i) ↦[xS23.view.set]{fullShare} f)
        ∗ (xS30.view.loc (V d c i) ↦[xS30.view.set]{fullShare} f)
        ∗ (xS31.view.loc (V d c i) ↦[xS31.view.set]{fullShare} f)
        ∗ (xS32.view.loc (V d c i) ↦[xS32.view.set]{fullShare} f)
        ∗ (xS33.view.loc (V d c i) ↦[xS33.view.set]{fullShare} f)) := by
  exact (pointsTo_cover (ℓ := (V d c i).loc cc0_scratch1) (fun kb : Fin 4 × Fin 4 => (xRect kb).set) xRect_disjoint xRect_cover f).trans
    ((bigSep_fin4x4 _).trans (sep_congr' (xS00_pts d c i f).symm (sep_congr' (xS01_pts d c i f).symm (sep_congr' (xS02_pts d c i f).symm (sep_congr' (xS03_pts d c i f).symm (sep_congr' (xS10_pts d c i f).symm (sep_congr' (xS11_pts d c i f).symm (sep_congr' (xS12_pts d c i f).symm (sep_congr' (xS13_pts d c i f).symm (sep_congr' (xS20_pts d c i f).symm (sep_congr' (xS21_pts d c i f).symm (sep_congr' (xS22_pts d c i f).symm (sep_congr' (xS23_pts d c i f).symm (sep_congr' (xS30_pts d c i f).symm (sep_congr' (xS31_pts d c i f).symm (sep_congr' (xS32_pts d c i f).symm ((xS33_pts d c i f).symm)))))))))))))))))

theorem xvb_join (d : Dev nD) (c : Fin τ.nSC) (i : Fin τ.nSub)
    (f00 f01 f02 f03 f10 f11 f12 f13 f20 f21 f22 f23 f30 f31 f32 f33 : Buf (Elt F) ((V d c i).loc cc0_scratch1)) :
    iprop((xS00.view.loc (V d c i) ↦[xS00.view.set]{fullShare} f00)
        ∗ (xS01.view.loc (V d c i) ↦[xS01.view.set]{fullShare} f01)
        ∗ (xS02.view.loc (V d c i) ↦[xS02.view.set]{fullShare} f02)
        ∗ (xS03.view.loc (V d c i) ↦[xS03.view.set]{fullShare} f03)
        ∗ (xS10.view.loc (V d c i) ↦[xS10.view.set]{fullShare} f10)
        ∗ (xS11.view.loc (V d c i) ↦[xS11.view.set]{fullShare} f11)
        ∗ (xS12.view.loc (V d c i) ↦[xS12.view.set]{fullShare} f12)
        ∗ (xS13.view.loc (V d c i) ↦[xS13.view.set]{fullShare} f13)
        ∗ (xS20.view.loc (V d c i) ↦[xS20.view.set]{fullShare} f20)
        ∗ (xS21.view.loc (V d c i) ↦[xS21.view.set]{fullShare} f21)
        ∗ (xS22.view.loc (V d c i) ↦[xS22.view.set]{fullShare} f22)
        ∗ (xS23.view.loc (V d c i) ↦[xS23.view.set]{fullShare} f23)
        ∗ (xS30.view.loc (V d c i) ↦[xS30.view.set]{fullShare} f30)
        ∗ (xS31.view.loc (V d c i) ↦[xS31.view.set]{fullShare} f31)
        ∗ (xS32.view.loc (V d c i) ↦[xS32.view.set]{fullShare} f32)
        ∗ (xS33.view.loc (V d c i) ↦[xS33.view.set]{fullShare} f33))
      ⊢ (iprop(∃ f, (V d c i).loc cc0_scratch1 ↦{fullShare} f) : sProp 𝕄) := by
  refine Entails.trans (Entails.of_eq ?_)
    (pointsTo_cover_join (ℓ := (V d c i).loc cc0_scratch1) (fun kb : Fin 4 × Fin 4 => (xRect kb).set) xRect_disjoint xRect_cover
      (fun kb => ![![f00, f01, f02, f03], ![f10, f11, f12, f13], ![f20, f21, f22, f23], ![f30, f31, f32, f33]] kb.1 kb.2))
  exact (sep_congr' (xS00_pts d c i f00) (sep_congr' (xS01_pts d c i f01) (sep_congr' (xS02_pts d c i f02) (sep_congr' (xS03_pts d c i f03) (sep_congr' (xS10_pts d c i f10) (sep_congr' (xS11_pts d c i f11) (sep_congr' (xS12_pts d c i f12) (sep_congr' (xS13_pts d c i f13) (sep_congr' (xS20_pts d c i f20) (sep_congr' (xS21_pts d c i f21) (sep_congr' (xS22_pts d c i f22) (sep_congr' (xS23_pts d c i f23) (sep_congr' (xS30_pts d c i f30) (sep_congr' (xS31_pts d c i f31) (sep_congr' (xS32_pts d c i f32) ((xS33_pts d c i f33))))))))))))))))).trans
    (bigSep_fin4x4 (fun kb : Fin 4 × Fin 4 => ((V d c i).loc cc0_scratch1 ↦[(xRect kb).set]{fullShare} ![![f00, f01, f02, f03], ![f10, f11, f12, f13], ![f20, f21, f22, f23], ![f30, f31, f32, f33]] kb.1 kb.2 : sProp 𝕄))).symm

end Cert.Proof.KB

end
-- ==== Proof.BFam.lean ====
import proofs.«210091_g81140522156176_cont_9to1_m_468_11_alg».proof.Proof.BSlots

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev r0 (L : grid0.Coords) : ℕ := 256 * (L 1).val + 128 * (L 0).val

abbrev pWinOf (off : Fin 2 → Nat) (h : ∀ a, off a + S4x1024.size a ≤ S4096x1024.size a) : Memref sig .scVector .hbm S4x1024 .f32 :=
  pV.slice (Rect.unit (s := S4096x1024) off S4x1024.size h) (fun _ => rfl)
abbrev xWinOf (off : Fin 3 → Nat) (h : ∀ a, off a + S1x4x1024.size a ≤ S4x4096x1024.size a) : Memref sig .scVector .hbm S4x1024 .f32 :=
  (xV.slice (Rect.unit (s := S4x4096x1024) off S1x4x1024.size h) (fun _ => rfl)).squeeze S4x1024 squeezes_S1x4x1024_S4x1024
abbrev oWinOf (off : Fin 3 → Nat) (h : ∀ a, off a + S1x4x1024.size a ≤ S4x4096x1024.size a) : Memref sig .scVector .hbm S4x1024 .f32 :=
  (oV.slice (Rect.unit (s := S4x4096x1024) off S1x4x1024.size h) (fun _ => rfl)).squeeze S4x1024 squeezes_S1x4x1024_S4x1024

theorem r0_def (L : grid0.Coords) : r0 L = 256 * (L 1).val + 128 * (L 0).val := rfl
theorem r0_le (L : grid0.Coords) : r0 L + 128 ≤ 4096 := by
  have h0 : (L 0).val < 2 := (L 0).isLt
  have h1 : (L 1).val < 16 := (L 1).isLt
  rw [r0_def]; omega

theorem PW_inb (L : grid0.Coords) (c : ℕ) (hc : c < 32) : ∀ a, (![r0 L + 4 * c, 0] : Fin 2 → Nat) a + S4x1024.size a ≤ S4096x1024.size a := by
  have hr := r0_le L
  intro a; fin_cases a <;> simp <;> omega
theorem XW_inb (L : grid0.Coords) (c b : ℕ) (hc : c < 32) (hb : b < 4) :
    ∀ a, (![b, r0 L + 4 * c, 0] : Fin 3 → Nat) a + S1x4x1024.size a ≤ S4x4096x1024.size a := by
  have hr := r0_le L
  intro a; fin_cases a <;> simp <;> omega

abbrev PW (L : grid0.Coords) (c : ℕ) (hc : c < 32) : Memref sig .scVector .hbm S4x1024 .f32 := pWinOf ![r0 L + 4 * c, 0] (PW_inb L c hc)
abbrev XW (L : grid0.Coords) (c b : ℕ) (hc : c < 32) (hb : b < 4) : Memref sig .scVector .hbm S4x1024 .f32 := xWinOf ![b, r0 L + 4 * c, 0] (XW_inb L c b hc hb)
abbrev OW (L : grid0.Coords) (c b : ℕ) (hc : c < 32) (hb : b < 4) : Memref sig .scVector .hbm S4x1024 .f32 := oWinOf ![b, r0 L + 4 * c, 0] (XW_inb L c b hc hb)

def srcChunk (d : Dev nD) (L : grid0.Coords) (fp : Buf (Elt F) (pLoc d)) (fx : Buf (Elt F) (xLoc d)) (c : ℕ) (hc : c < 32) : sProp 𝕄 :=
  iprop(((PW L c hc).view.loc (thr d L) ↦[(PW L c hc).view.set]{rsh} fp)
    ∗ ((XW L c 0 hc (by decide)).view.loc (thr d L) ↦[(XW L c 0 hc (by decide)).view.set]{rsh} fx)
    ∗ ((XW L c 1 hc (by decide)).view.loc (thr d L) ↦[(XW L c 1 hc (by decide)).view.set]{rsh} fx)
    ∗ ((XW L c 2 hc (by decide)).view.loc (thr d L) ↦[(XW L c 2 hc (by decide)).view.set]{rsh} fx)
    ∗ ((XW L c 3 hc (by decide)).view.loc (thr d L) ↦[(XW L c 3 hc (by decide)).view.set]{rsh} fx))

def outChunk (d : Dev nD) (L : grid0.Coords) (fo : Buf (Elt F) (oLoc d)) (c : ℕ) (hc : c < 32) : sProp 𝕄 :=
  iprop(((OW L c 0 hc (by decide)).view.loc (thr d L) ↦[(OW L c 0 hc (by decide)).view.set]{fullShare} fo)
    ∗ ((OW L c 1 hc (by decide)).view.loc (thr d L) ↦[(OW L c 1 hc (by decide)).view.set]{fullShare} fo)
    ∗ ((OW L c 2 hc (by decide)).view.loc (thr d L) ↦[(OW L c 2 hc (by decide)).view.set]{fullShare} fo)
    ∗ ((OW L c 3 hc (by decide)).view.loc (thr d L) ↦[(OW L c 3 hc (by decide)).view.set]{fullShare} fo))

def srcFrom (d : Dev nD) (L : grid0.Coords) (fp : Buf (Elt F) (pLoc d)) (fx : Buf (Elt F) (xLoc d)) (lo : ℕ) : sProp 𝕄 :=
  bigSep (Finset.univ.filter fun c : Fin 32 => lo ≤ c.val) fun c => srcChunk d L fp fx c.val c.isLt
def outFrom (d : Dev nD) (L : grid0.Coords) (fo : Buf (Elt F) (oLoc d)) (lo : ℕ) : sProp 𝕄 :=
  bigSep (Finset.univ.filter fun c : Fin 32 => lo ≤ c.val) fun c => outChunk d L fo c.val c.isLt
def outBelow (d : Dev nD) (L : grid0.Coords) (g : Buf (Elt F) (oLoc d)) (hi : ℕ) : sProp 𝕄 :=
  bigSep (Finset.univ.filter fun c : Fin 32 => c.val < hi) fun c => outChunk d L g c.val c.isLt

theorem sep_comm_eq (A B : sProp 𝕄) : (iprop(A ∗ B) : sProp 𝕄) = iprop(B ∗ A) := by
  refine BI.equiv_iff.mp ⟨(show iprop(A ∗ B) ⊢ iprop(B ∗ A) from ?_), (show iprop(B ∗ A) ⊢ iprop(A ∗ B) from ?_)⟩
  · iintro ⟨H1, H2⟩; isplitl [H2]; · iexact H2
    iexact H1
  · iintro ⟨H1, H2⟩; isplitl [H2]; · iexact H2
    iexact H1

theorem filter_from_succ (lo : ℕ) (h : lo < 32) :
    (Finset.univ.filter fun c : Fin 32 => lo ≤ c.val) = insert ⟨lo, h⟩ (Finset.univ.filter fun c : Fin 32 => lo + 1 ≤ c.val) := by
  ext c; simp only [Finset.mem_filter, Finset.mem_univ, true_and, Finset.mem_insert, Fin.ext_iff]; omega
theorem not_mem_from_succ (lo : ℕ) (h : lo < 32) : (⟨lo, h⟩ : Fin 32) ∉ Finset.univ.filter fun c : Fin 32 => lo + 1 ≤ c.val := by
  simp only [Finset.mem_filter, Finset.mem_univ, true_and]; omega
theorem filter_from_ge (lo : ℕ) (h : 32 ≤ lo) : (Finset.univ.filter fun c : Fin 32 => lo ≤ c.val) = ∅ := by
  ext c; have := c.isLt
  simp only [Finset.mem_filter, Finset.mem_univ, true_and, Finset.notMem_empty, iff_false]; omega
theorem filter_from_zero : (Finset.univ.filter fun c : Fin 32 => 0 ≤ c.val) = Finset.univ :=
  Finset.filter_true_of_mem fun c _ => Nat.zero_le _
theorem filter_below_succ (hi : ℕ) (h : hi < 32) :
    (Finset.univ.filter fun c : Fin 32 => c.val < hi + 1) = insert ⟨hi, h⟩ (Finset.univ.filter fun c : Fin 32 => c.val < hi) := by
  ext c; simp only [Finset.mem_filter, Finset.mem_univ, true_and, Finset.mem_insert, Fin.ext_iff]; omega
theorem not_mem_below (hi : ℕ) (h : hi < 32) : (⟨hi, h⟩ : Fin 32) ∉ Finset.univ.filter fun c : Fin 32 => c.val < hi := by
  simp only [Finset.mem_filter, Finset.mem_univ, true_and]; omega
theorem filter_below_zero : (Finset.univ.filter fun c : Fin 32 => c.val < 0) = ∅ := by
  ext c; simp only [Finset.mem_filter, Finset.mem_univ, true_and, Finset.notMem_empty, iff_false]; omega
theorem filter_below_all : (Finset.univ.filter fun c : Fin 32 => c.val < 32) = Finset.univ :=
  Finset.filter_true_of_mem fun c _ => c.isLt

section Peel
variable (d : Dev nD) (L : grid0.Coords) (fp : Buf (Elt F) (pLoc d)) (fx : Buf (Elt F) (xLoc d)) (fo : Buf (Elt F) (oLoc d))

theorem srcFrom_succ (lo : ℕ) (h : lo < 32) : srcFrom d L fp fx lo = iprop(srcChunk d L fp fx lo h ∗ srcFrom d L fp fx (lo + 1)) := by
  unfold srcFrom; rw [filter_from_succ lo h, SparseCore.bigSep_insert' (not_mem_from_succ lo h)]
theorem srcFrom_done (lo : ℕ) (h : 32 ≤ lo) : srcFrom d L fp fx lo = (iprop(emp) : sProp 𝕄) := by
  unfold srcFrom; rw [filter_from_ge lo h, bigSep_empty]; rfl
theorem outFrom_succ (lo : ℕ) (h : lo < 32) : outFrom d L fo lo = iprop(outChunk d L fo lo h ∗ outFrom d L fo (lo + 1)) := by
  unfold outFrom; rw [filter_from_succ lo h, SparseCore.bigSep_insert' (not_mem_from_succ lo h)]
theorem outBelow_succ (hi : ℕ) (h : hi < 32) : outBelow d L fo (hi + 1) = iprop(outBelow d L fo hi ∗ outChunk d L fo hi h) := by
  unfold outBelow; rw [filter_below_succ hi h, SparseCore.bigSep_insert' (not_mem_below hi h)]
  exact sep_comm_eq _ _
theorem outBelow_zero : outBelow d L fo 0 = (iprop(emp) : sProp 𝕄) := by
  unfold outBelow; rw [filter_below_zero, bigSep_empty]; rfl
end Peel

abbrev pRectW (L : grid0.Coords) (c : ℕ) (hc : c < 32) : Rect S4096x1024 :=
  Rect.unit (s := S4096x1024) ![r0 L + 4 * c, 0] S4x1024.size (PW_inb L c hc)
abbrev xRectW (L : grid0.Coords) (c b : ℕ) (hc : c < 32) (hb : b < 4) : Rect S4x4096x1024 :=
  Rect.unit (s := S4x4096x1024) ![b, r0 L + 4 * c, 0] S1x4x1024.size (XW_inb L c b hc hb)

theorem PW_set (L : grid0.Coords) (c : ℕ) (hc : c < 32) : (PW L c hc).view.set = (pRectW L c hc).set := by
  show ((View.whole (main_v0_scv : Ref sig .scVector)).slice (pRectW L c hc)).set = _
  rw [View.set_slice_whole]
theorem XW_set (L : grid0.Coords) (c b : ℕ) (hc : c < 32) (hb : b < 4) : (XW L c b hc hb).view.set = (xRectW L c b hc hb).set := by
  show (((View.whole (main_arg0_scv : Ref sig .scVector)).slice (xRectW L c b hc hb)).reshape S4x1024 squeezes_S1x4x1024_S4x1024.numel_eq).set = _
  rw [View.set_reshape, View.set_slice_whole]
theorem OW_set (L : grid0.Coords) (c b : ℕ) (hc : c < 32) (hb : b < 4) : (OW L c b hc hb).view.set = (xRectW L c b hc hb).set := by
  show (((View.whole (main_v1_scv : Ref sig .scVector)).slice (xRectW L c b hc hb)).reshape S4x1024 squeezes_S1x4x1024_S4x1024.numel_eq).set = _
  rw [View.set_reshape, View.set_slice_whole]

theorem pRectW_disjoint (L : grid0.Coords) (c c' : Fin 32) (h : c ≠ c') : Disjoint (pRectW L c.val c.isLt).set (pRectW L c'.val c'.isLt).set := by
  have hv : c.val ≠ c'.val := fun e => h (Fin.ext e)
  exact Rect.unit_disjoint 0 (by simp; omega)
theorem xRectW_disjoint (L : grid0.Coords) {c c' : Fin 32} {b b' : Fin 4} (h : ¬ (c = c' ∧ b = b')) :
    Disjoint (xRectW L c.val b.val c.isLt b.isLt).set (xRectW L c'.val b'.val c'.isLt b'.isLt).set := by
  by_cases hb : b = b'
  · have hv : c.val ≠ c'.val := fun e => h ⟨Fin.ext e, hb⟩
    exact Rect.unit_disjoint 1 (by simp; omega)
  · have hv : b.val ≠ b'.val := fun e => hb (Fin.ext e)
    exact Rect.unit_disjoint 0 (by simp; omega)

theorem tileP_windows (L : grid0.Coords) :
    (tileP (L 0).val (L 1).val (L 0).isLt (L 1).isLt).set = (Finset.univ : Finset (Fin 32)).biUnion fun c => (pRectW L c.val c.isLt).set := by
  ext x
  have hx1 : (x 1).val < 1024 := (x 1).isLt
  simp only [Finset.mem_biUnion, Finset.mem_univ, true_and, tileP, Rect.mem_set_unit]
  constructor
  · intro h
    have h0 := h 0
    simp only [Matrix.cons_val_zero] at h0
    refine ⟨⟨((x 0).val - r0 L) / 4, by rw [r0_def]; omega⟩, fun a => ?_⟩
    fin_cases a
    · simp only [Fin.zero_eta, Matrix.cons_val_zero]; rw [r0_def]; simp; omega
    · simp; omega
  · rintro ⟨c, h⟩ a
    have h0 := h 0
    have hc := c.isLt
    simp only [Matrix.cons_val_zero] at h0
    rw [r0_def] at h0
    fin_cases a
    · simp at h0 ⊢; omega
    · simp; omega

theorem tileX_windows (L : grid0.Coords) :
    (tileX (L 0).val (L 1).val (L 0).isLt (L 1).isLt).set
      = (Finset.univ : Finset (Fin 32)).biUnion fun c => (Finset.univ : Finset (Fin 4)).biUnion fun b => (xRectW L c.val b.val c.isLt b.isLt).set := by
  ext x
  have hx0 : (x 0).val < 4 := (x 0).isLt
  have hx2 : (x 2).val < 1024 := (x 2).isLt
  simp only [Finset.mem_biUnion, Finset.mem_univ, true_and, tileX, Rect.mem_set_unit]
  constructor
  · intro h
    have h1 := h 1
    simp only [Matrix.cons_val_one, Matrix.cons_val_zero] at h1
    refine ⟨⟨((x 1).val - r0 L) / 4, by rw [r0_def]; omega⟩, ⟨(x 0).val, hx0⟩, fun a => ?_⟩
    fin_cases a
    · simp
    · simp only [Fin.mk_one, Matrix.cons_val_one, Matrix.cons_val_zero]; rw [r0_def]; simp; omega
    · simp; omega
  · rintro ⟨c, b, h⟩ a
    have h0 := h 0
    have h1 := h 1
    have hc := c.isLt
    have hb := b.isLt
    simp only [Matrix.cons_val_one, Matrix.cons_val_zero] at h0 h1
    rw [r0_def] at h1
    fin_cases a
    · simp at h0 ⊢; omega
    · simp at h1 ⊢; omega
    · simp; omega

theorem vec2_congr {a b : ℕ} (h : a = b) : (![a, 0] : Fin 2 → ℕ) = ![b, 0] := by rw [h]
theorem vec3_congr (t : ℕ) {a b : ℕ} (h : a = b) : (![t, a, 0] : Fin 3 → ℕ) = ![t, b, 0] := by rw [h]
theorem trips_eq : k0_t1_loop.trips = 8 := rfl
theorem trip_lt (k : Fin k0_t1_loop.trips) : k.val < 8 := k.isLt

theorem sep_rot_eq (A B C : sProp 𝕄) : (iprop(A ∗ B ∗ C) : sProp 𝕄) = iprop((B ∗ A) ∗ C) := by
  refine BI.equiv_iff.mp ⟨(show iprop(A ∗ B ∗ C) ⊢ iprop((B ∗ A) ∗ C) from ?_), (show iprop((B ∗ A) ∗ C) ⊢ iprop(A ∗ B ∗ C) from ?_)⟩
  · iintro ⟨HA, HB, HC⟩
    isplitl [HA HB]
    · isplitl [HB]; · iexact HB
      iexact HA
    iexact HC
  · iintro ⟨⟨HB, HA⟩, HC⟩
    isplitl [HA]; · iexact HA
    isplitl [HB]; · iexact HB
    iexact HC

theorem pointsTo_grid32 {ℓ : Loc nD τ sig} (S : Finset (Idx ℓ)) (G : Fin 32 → Fin 4 → Finset (Idx ℓ))
    (hS : S = (Finset.univ : Finset (Fin 32)).biUnion fun c => (Finset.univ : Finset (Fin 4)).biUnion fun b => G c b)
    (hd : ∀ {c c' : Fin 32} {b b' : Fin 4}, ¬ (c = c' ∧ b = b') → Disjoint (G c b) (G c' b')) (q : PosShare TreeShare) (f : Buf (Elt F) ℓ) :
    (ℓ ↦[S]{q} f : sProp 𝕄) = bigSep Finset.univ fun c : Fin 32 => bigSep Finset.univ fun b : Fin 4 => ℓ ↦[G c b]{q} f := by
  subst hS
  rw [pointsTo_biUnion Finset.univ (ℓ := ℓ) (fun c : Fin 32 => (Finset.univ : Finset (Fin 4)).biUnion fun b => G c b)]
  · exact bigSep_congr fun c _ => pointsTo_biUnion Finset.univ (ℓ := ℓ) (G c) fun b _ b' _ h => hd fun e => h e.2
  · intro c _ c' _ h
    exact (Finset.disjoint_biUnion_left _ _ _).mpr fun b _ => (Finset.disjoint_biUnion_right _ _ _).mpr fun b' _ => hd fun e => h e.1

theorem pRows_windows (d : Dev nD) (L : grid0.Coords) (q : PosShare TreeShare) (f : Buf (Elt F) (pLoc d)) :
    (pLoc d ↦[pSet (L 0).val (L 1).val (L 0).isLt (L 1).isLt]{q} f : sProp 𝕄)
      = bigSep Finset.univ fun c : Fin 32 => (PW L c.val c.isLt).view.loc (thr d L) ↦[(PW L c.val c.isLt).view.set]{q} f := by
  have hs : pSet (L 0).val (L 1).val (L 0).isLt (L 1).isLt = (tileP (L 0).val (L 1).val (L 0).isLt (L 1).isLt).set := by
    unfold pSet View.setOn; exact Finset.map_refl
  rw [hs, tileP_windows, pointsTo_biUnion Finset.univ (ℓ := pLoc d) (fun c : Fin 32 => (pRectW L c.val c.isLt).set)
    fun c _ c' _ h => pRectW_disjoint L c c' h]
  exact bigSep_congr fun c _ => by rw [PW_set]

def xWins (d : Dev nD) (L : grid0.Coords) (q : PosShare TreeShare) (f : Buf (Elt F) (xLoc d)) (c : ℕ) (hc : c < 32) : sProp 𝕄 :=
  iprop(((XW L c 0 hc (by decide)).view.loc (thr d L) ↦[(XW L c 0 hc (by decide)).view.set]{q} f)
    ∗ ((XW L c 1 hc (by decide)).view.loc (thr d L) ↦[(XW L c 1 hc (by decide)).view.set]{q} f)
    ∗ ((XW L c 2 hc (by decide)).view.loc (thr d L) ↦[(XW L c 2 hc (by decide)).view.set]{q} f)
    ∗ ((XW L c 3 hc (by decide)).view.loc (thr d L) ↦[(XW L c 3 hc (by decide)).view.set]{q} f))

theorem XW_pts (d : Dev nD) (L : grid0.Coords) (q : PosShare TreeShare) (f : Buf (Elt F) (xLoc d)) (c b : ℕ) (hc : c < 32) (hb : b < 4) :
    ((XW L c b hc hb).view.loc (thr d L) ↦[(XW L c b hc hb).view.set]{q} f : sProp 𝕄) = (xLoc d ↦[(xRectW L c b hc hb).set]{q} f) := by
  rw [XW_set]

theorem xWins_rects (d : Dev nD) (L : grid0.Coords) (q : PosShare TreeShare) (f : Buf (Elt F) (xLoc d)) (c : ℕ) (hc : c < 32) :
    xWins d L q f c hc
      = iprop((xLoc d ↦[(xRectW L c 0 hc (by decide)).set]{q} f)
        ∗ (xLoc d ↦[(xRectW L c 1 hc (by decide)).set]{q} f)
        ∗ (xLoc d ↦[(xRectW L c 2 hc (by decide)).set]{q} f)
        ∗ (xLoc d ↦[(xRectW L c 3 hc (by decide)).set]{q} f)) :=
  sep_congr' (XW_pts d L q f c 0 hc (by decide)) (sep_congr' (XW_pts d L q f c 1 hc (by decide))
    (sep_congr' (XW_pts d L q f c 2 hc (by decide)) (XW_pts d L q f c 3 hc (by decide))))

theorem xSet_tile (L : grid0.Coords) : xSet (L 0).val (L 1).val (L 0).isLt (L 1).isLt = (tileX (L 0).val (L 1).val (L 0).isLt (L 1).isLt).set := by
  unfold xSet View.setOn; exact Finset.map_refl

theorem xRows_windows (d : Dev nD) (L : grid0.Coords) (q : PosShare TreeShare) (f : Buf (Elt F) (xLoc d)) :
    (xLoc d ↦[xSet (L 0).val (L 1).val (L 0).isLt (L 1).isLt]{q} f : sProp 𝕄)
      = bigSep Finset.univ fun c : Fin 32 => xWins d L q f c.val c.isLt :=
  (pointsTo_grid32 (ℓ := xLoc d) _ (fun (c : Fin 32) (b : Fin 4) => (xRectW L c.val b.val c.isLt b.isLt).set)
      ((xSet_tile L).trans (tileX_windows L)) (fun h => xRectW_disjoint L h) q f).trans
    (bigSep_congr fun c _ => (bigSep_fin4 _).trans (xWins_rects d L q f c.val c.isLt).symm)

def oWins (d : Dev nD) (L : grid0.Coords) (q : PosShare TreeShare) (f : Buf (Elt F) (oLoc d)) (c : ℕ) (hc : c < 32) : sProp 𝕄 :=
  iprop(((OW L c 0 hc (by decide)).view.loc (thr d L) ↦[(OW L c 0 hc (by decide)).view.set]{q} f)
    ∗ ((OW L c 1 hc (by decide)).view.loc (thr d L) ↦[(OW L c 1 hc (by decide)).view.set]{q} f)
    ∗ ((OW L c 2 hc (by decide)).view.loc (thr d L) ↦[(OW L c 2 hc (by decide)).view.set]{q} f)
    ∗ ((OW L c 3 hc (by decide)).view.loc (thr d L) ↦[(OW L c 3 hc (by decide)).view.set]{q} f))

theorem OW_pts (d : Dev nD) (L : grid0.Coords) (q : PosShare TreeShare) (f : Buf (Elt F) (oLoc d)) (c b : ℕ) (hc : c < 32) (hb : b < 4) :
    ((OW L c b hc hb).view.loc (thr d L) ↦[(OW L c b hc hb).view.set]{q} f : sProp 𝕄) = (oLoc d ↦[(xRectW L c b hc hb).set]{q} f) := by
  rw [OW_set]

theorem oWins_rects (d : Dev nD) (L : grid0.Coords) (q : PosShare TreeShare) (f : Buf (Elt F) (oLoc d)) (c : ℕ) (hc : c < 32) :
    oWins d L q f c hc
      = iprop((oLoc d ↦[(xRectW L c 0 hc (by decide)).set]{q} f)
        ∗ (oLoc d ↦[(xRectW L c 1 hc (by decide)).set]{q} f)
        ∗ (oLoc d ↦[(xRectW L c 2 hc (by decide)).set]{q} f)
        ∗ (oLoc d ↦[(xRectW L c 3 hc (by decide)).set]{q} f)) :=
  sep_congr' (OW_pts d L q f c 0 hc (by decide)) (sep_congr' (OW_pts d L q f c 1 hc (by decide))
    (sep_congr' (OW_pts d L q f c 2 hc (by decide)) (OW_pts d L q f c 3 hc (by decide))))

theorem oSet_tile (L : grid0.Coords) : oSet (L 0).val (L 1).val (L 0).isLt (L 1).isLt = (tileX (L 0).val (L 1).val (L 0).isLt (L 1).isLt).set := by
  unfold oSet View.setOn; exact Finset.map_refl

theorem oRows_windows (d : Dev nD) (L : grid0.Coords) (q : PosShare TreeShare) (f : Buf (Elt F) (oLoc d)) :
    (oLoc d ↦[oSet (L 0).val (L 1).val (L 0).isLt (L 1).isLt]{q} f : sProp 𝕄)
      = bigSep Finset.univ fun c : Fin 32 => oWins d L q f c.val c.isLt :=
  (pointsTo_grid32 (ℓ := oLoc d) _ (fun (c : Fin 32) (b : Fin 4) => (xRectW L c.val b.val c.isLt b.isLt).set)
      ((oSet_tile L).trans (tileX_windows L)) (fun h => xRectW_disjoint L h) q f).trans
    (bigSep_congr fun c _ => (bigSep_fin4 _).trans (oWins_rects d L q f c.val c.isLt).symm)

section Rows
variable (d : Dev nD) (L : grid0.Coords)

theorem srcChunk_eq (fp : Buf (Elt F) (pLoc d)) (fx : Buf (Elt F) (xLoc d)) (c : ℕ) (hc : c < 32) :
    srcChunk d L fp fx c hc = iprop(((PW L c hc).view.loc (thr d L) ↦[(PW L c hc).view.set]{rsh} fp) ∗ xWins d L rsh fx c hc) := rfl
theorem outChunk_eq (fo : Buf (Elt F) (oLoc d)) (c : ℕ) (hc : c < 32) : outChunk d L fo c hc = oWins d L fullShare fo c hc := rfl

theorem srcFrom_zero (fp : Buf (Elt F) (pLoc d)) (fx : Buf (Elt F) (xLoc d)) :
    srcFrom d L fp fx 0
      = iprop((pLoc d ↦[pSet (L 0).val (L 1).val (L 0).isLt (L 1).isLt]{rsh} fp) ∗ (xLoc d ↦[xSet (L 0).val (L 1).val (L 0).isLt (L 1).isLt]{rsh} fx)) := by
  unfold srcFrom
  rw [filter_from_zero, pRows_windows d L rsh fp, xRows_windows d L rsh fx, ← bigSep_sep']
  exact bigSep_congr fun c _ => srcChunk_eq d L fp fx c.val c.isLt

theorem outFrom_zero (fo : Buf (Elt F) (oLoc d)) :
    outFrom d L fo 0 = (oLoc d ↦[oSet (L 0).val (L 1).val (L 0).isLt (L 1).isLt]{fullShare} fo : sProp 𝕄) := by
  unfold outFrom
  rw [filter_from_zero, oRows_windows d L fullShare fo]
  exact bigSep_congr fun c _ => outChunk_eq d L fo c.val c.isLt

theorem outBelow_all (g : Buf (Elt F) (oLoc d)) :
    outBelow d L g 32 = (oLoc d ↦[oSet (L 0).val (L 1).val (L 0).isLt (L 1).isLt]{fullShare} g : sProp 𝕄) := by
  unfold outBelow
  rw [filter_below_all, oRows_windows d L fullShare g]
  exact bigSep_congr fun c _ => outChunk_eq d L g c.val c.isLt

variable [FloatOps F] (m : (ℓ : Loc nD τ sig) → Buf (Elt F) ℓ)

theorem goOf_chunks :
    goOf m d (L 0).val (L 1).val (L 0).isLt (L 1).isLt = iprop(srcFrom d L (mp m d) (m (xLoc d)) 0 ∗ outFrom d L (m (oLoc d)) 0) := by
  rw [srcFrom_zero, outFrom_zero]
  exact sep_rot_eq _ _ _

theorem tdOf_chunks :
    outBelow d L (mres m d) 32 = tdOf m d (L 0).val (L 1).val (L 0).isLt (L 1).isLt :=
  outBelow_all d L (mres m d)
end Rows

end Cert.Proof.KB

end
-- ==== Proof.BInnerTrip.lean ====
import proofs.«210091_g81140522156176_cont_9to1_m_468_11_alg».proof.Proof.BSlots
import Idealize.ShloMosaic.Lib.Writes
import Idealize.ShloMosaic.Lib.ValueIdx
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev sS00 : Memref sig .scVector .vmem S4x1024 .f32 :=
  (sB.slice (Rect.unit (s := S2x4x4x1024) ![0, 0, 0, 0] S1x1x4x1024.size inb_S2x4x4x1024_S1x1x4x1024_0_0_0_0) (fun _ => rfl)).squeeze S4x1024 squeezes_S1x1x4x1024_S4x1024
abbrev sS01 : Memref sig .scVector .vmem S4x1024 .f32 :=
  (sB.slice (Rect.unit (s := S2x4x4x1024) ![0, 1, 0, 0] S1x1x4x1024.size inb_S2x4x4x1024_S1x1x4x1024_0_1_0_0) (fun _ => rfl)).squeeze S4x1024 squeezes_S1x1x4x1024_S4x1024
abbrev sS02 : Memref sig .scVector .vmem S4x1024 .f32 :=
  (sB.slice (Rect.unit (s := S2x4x4x1024) ![0, 2, 0, 0] S1x1x4x1024.size inb_S2x4x4x1024_S1x1x4x1024_0_2_0_0) (fun _ => rfl)).squeeze S4x1024 squeezes_S1x1x4x1024_S4x1024
abbrev sS03 : Memref sig .scVector .vmem S4x1024 .f32 :=
  (sB.slice (Rect.unit (s := S2x4x4x1024) ![0, 3, 0, 0] S1x1x4x1024.size inb_S2x4x4x1024_S1x1x4x1024_0_3_0_0) (fun _ => rfl)).squeeze S4x1024 squeezes_S1x1x4x1024_S4x1024
abbrev sS10 : Memref sig .scVector .vmem S4x1024 .f32 :=
  (sB.slice (Rect.unit (s := S2x4x4x1024) ![1, 0, 0, 0] S1x1x4x1024.size inb_S2x4x4x1024_S1x1x4x1024_1_0_0_0) (fun _ => rfl)).squeeze S4x1024 squeezes_S1x1x4x1024_S4x1024
abbrev sS11 : Memref sig .scVector .vmem S4x1024 .f32 :=
  (sB.slice (Rect.unit (s := S2x4x4x1024) ![1, 1, 0, 0] S1x1x4x1024.size inb_S2x4x4x1024_S1x1x4x1024_1_1_0_0) (fun _ => rfl)).squeeze S4x1024 squeezes_S1x1x4x1024_S4x1024
abbrev sS12 : Memref sig .scVector .vmem S4x1024 .f32 :=
  (sB.slice (Rect.unit (s := S2x4x4x1024) ![1, 2, 0, 0] S1x1x4x1024.size inb_S2x4x4x1024_S1x1x4x1024_1_2_0_0) (fun _ => rfl)).squeeze S4x1024 squeezes_S1x1x4x1024_S4x1024
abbrev sS13 : Memref sig .scVector .vmem S4x1024 .f32 :=
  (sB.slice (Rect.unit (s := S2x4x4x1024) ![1, 3, 0, 0] S1x1x4x1024.size inb_S2x4x4x1024_S1x1x4x1024_1_3_0_0) (fun _ => rfl)).squeeze S4x1024 squeezes_S1x1x4x1024_S4x1024

def idxList : List (Fin 4 × Fin 64) :=
  [
    (3, 63), (3, 62), (3, 61), (3, 60), (3, 59), (3, 58), (3, 57), (3, 56), (3, 55), (3, 54), (3, 53), (3, 52), (3, 51), (3, 50), (3, 49), (3, 48),
    (3, 47), (3, 46), (3, 45), (3, 44), (3, 43), (3, 42), (3, 41), (3, 40), (3, 39), (3, 38), (3, 37), (3, 36), (3, 35), (3, 34), (3, 33), (3, 32),
    (2, 63), (2, 62), (2, 61), (2, 60), (2, 59), (2, 58), (2, 57), (2, 56), (2, 55), (2, 54), (2, 53), (2, 52), (2, 51), (2, 50), (2, 49), (2, 48),
    (2, 47), (2, 46), (2, 45), (2, 44), (2, 43), (2, 42), (2, 41), (2, 40), (2, 39), (2, 38), (2, 37), (2, 36), (2, 35), (2, 34), (2, 33), (2, 32),
    (1, 63), (1, 62), (1, 61), (1, 60), (1, 59), (1, 58), (1, 57), (1, 56), (1, 55), (1, 54), (1, 53), (1, 52), (1, 51), (1, 50), (1, 49), (1, 48),
    (1, 47), (1, 46), (1, 45), (1, 44), (1, 43), (1, 42), (1, 41), (1, 40), (1, 39), (1, 38), (1, 37), (1, 36), (1, 35), (1, 34), (1, 33), (1, 32),
    (0, 63), (0, 62), (0, 61), (0, 60), (0, 59), (0, 58), (0, 57), (0, 56), (0, 55), (0, 54), (0, 53), (0, 52), (0, 51), (0, 50), (0, 49), (0, 48),
    (0, 47), (0, 46), (0, 45), (0, 44), (0, 43), (0, 42), (0, 41), (0, 40), (0, 39), (0, 38), (0, 37), (0, 36), (0, 35), (0, 34), (0, 33), (0, 32),
    (3, 31), (3, 30), (3, 29), (3, 28), (3, 27), (3, 26), (3, 25), (3, 24), (3, 23), (3, 22), (3, 21), (3, 20), (3, 19), (3, 18), (3, 17), (3, 16),
    (3, 15), (3, 14), (3, 13), (3, 12), (3, 11), (3, 10), (3, 9), (3, 8), (3, 7), (3, 6), (3, 5), (3, 4), (3, 3), (3, 2), (3, 1), (3, 0),
    (2, 31), (2, 30), (2, 29), (2, 28), (2, 27), (2, 26), (2, 25), (2, 24), (2, 23), (2, 22), (2, 21), (2, 20), (2, 19), (2, 18), (2, 17), (2, 16),
    (2, 15), (2, 14), (2, 13), (2, 12), (2, 11), (2, 10), (2, 9), (2, 8), (2, 7), (2, 6), (2, 5), (2, 4), (2, 3), (2, 2), (2, 1), (2, 0),
    (1, 31), (1, 30), (1, 29), (1, 28), (1, 27), (1, 26), (1, 25), (1, 24), (1, 23), (1, 22), (1, 21), (1, 20), (1, 19), (1, 18), (1, 17), (1, 16),
    (1, 15), (1, 14), (1, 13), (1, 12), (1, 11), (1, 10), (1, 9), (1, 8), (1, 7), (1, 6), (1, 5), (1, 4), (1, 3), (1, 2), (1, 1), (1, 0),
    (0, 31), (0, 30), (0, 29), (0, 28), (0, 27), (0, 26), (0, 25), (0, 24), (0, 23), (0, 22), (0, 21), (0, 20), (0, 19), (0, 18), (0, 17), (0, 16),
    (0, 15), (0, 14), (0, 13), (0, 12), (0, 11), (0, 10), (0, 9), (0, 8), (0, 7), (0, 6), (0, 5), (0, 4), (0, 3), (0, 2), (0, 1), (0, 0) ]

theorem mem_idxList : ∀ bq : Fin 4 × Fin 64, bq ∈ idxList := by decide

section ReadV
variable [FloatOps F]

def readV {κ : Kind} {sp : Space} {s : Shape} (v : View sig κ sp s .f32) (f : v.ty.Contents (Elt F)) (off sz : Fin s.rank → Nat) :
    (⟨s.rank, sz⟩ : Shape).Idx → Elt F .f32 :=
  fun x => if h : ∀ a, off a + sz a ≤ s.size a then v.readAt (Elt F) (Rect.unit off sz h).toLoadRect f x else (FloatOps.ofBits .f32 0#32 : F .f32)

theorem readAt_unit_eq {κ : Kind} {sp : Space} {s : Shape} (v : View sig κ sp s .f32) (f : v.ty.Contents (Elt F)) (off sz : Fin s.rank → Nat)
    (inb : ∀ a, off a + sz a ≤ s.size a) :
    v.readAt (Elt F) (Rect.unit off sz inb).toLoadRect f = readV v f off sz := by
  funext x
  unfold readV
  rw [dif_pos inb]

/-- A load through a unit-stride rectangle, at the closed form of the rectangle's offsets. -/
theorem readAt_unit_closed {κ : Kind} {sp : Space} {s : Shape} (v : View sig κ sp s .f32) (f : v.ty.Contents (Elt F)) (off sz : Fin s.rank → Nat)
    (inb : ∀ a, off a + sz a ≤ s.size a) [c : ClosedOff off] :
    v.readAt (Elt F) (Rect.unit off sz inb).toLoadRect f = readV v f (ClosedOff.form off) sz := by
  obtain ⟨form, rfl⟩ := c
  exact readAt_unit_eq v f _ sz inb

/-- A block rewritten whole, over any earlier contents, with what a window of another array holds. -/
abbrev lnd {κ κ' : Kind} {sp sp' : Space} (dst : Memref sig κ sp S4x1024 .f32) (src : Memref sig κ' sp' S4x1024 .f32)
    (fs : src.view.ty.Contents (Elt F)) : dst.view.ty.Contents (Elt F) :=
  dst.view.writes (Elt F) dst.view.junk [⟨Rect.whole S4x1024, ReadAs.same.apply (src.view.read (Elt F) fs)⟩]

end ReadV

section Pure

open ValueIdx

variable [FloatOps F]

theorem sInb (m : Fin 2) (b : Fin 4) (tv : Nat) (ht : tv < 4) (q : Fin 64) :
    ∀ a, (![m.val, b.val, tv, 16 * q.val] : Fin 4 → Nat) a + S1x1x1x16.size a ≤ S2x4x4x1024.size a := by
  intro a; fin_cases a <;> simp <;> omega
theorem xInbQ (k b : Fin 4) (tv : Nat) (ht : tv < 4) (q : Fin 64) :
    ∀ a, (![k.val, b.val, tv, 16 * q.val] : Fin 4 → Nat) a + S1x1x1x16.size a ≤ S4x4x4x1024.size a := by
  intro a; fin_cases a <;> simp <;> omega
theorem pInbQ (k : Fin 4) (tv : Nat) (ht : tv < 4) (q : Fin 64) :
    ∀ a, (![k.val, tv, 16 * q.val] : Fin 3 → Nat) a + S1x1x16.size a ≤ S4x4x1024.size a := by
  intro a; fin_cases a <;> simp <;> omega

variable (k : Fin 4) (m : Fin 2) (tv : Nat) (ht : tv < 4)
  (X0 : S4x4x1024.Idx → F .f32) (Xs : Fin 4 → S4x4x4x1024.Idx → F .f32)

def rowVal (b j : Fin 4) (l : Fin 1024) : F .f32 := FloatOps.addf (Xs b (ix4 k b j l)) (X0 (ix3 k j l))

def rowG (y : S2x4x4x1024.Idx) : F .f32 :=
  rowVal k X0 Xs ⟨(y 1).val, (y 1).isLt⟩ ⟨(y 2).val, (y 2).isLt⟩ ⟨(y 3).val, (y 3).isLt⟩

def mkPiece (bq : Fin 4 × Fin 64) : View.Piece (Elt F) S2x4x4x1024 .f32 :=
  ⟨Rect.unit (s := S2x4x4x1024) ![m.val, bq.1.val, tv, 16 * bq.2.val] S1x1x1x16.size (sInb m bq.1 tv ht bq.2),
    shapeCast S1x1x1x16
      (addf
        (shapeCast S16 (readV (xB : Memref sig .scVector .vmem S4x4x4x1024 .f32).view (Xs bq.1) ![k.val, bq.1.val, tv, 16 * bq.2.val] S1x1x1x16.size)
          shapeCasts_S1x1x1x16_S16)
        (shapeCast S16 (readV (pB : Memref sig .scVector .vmem S4x4x1024 .f32).view X0 ![k.val, tv, 16 * bq.2.val] S1x1x16.size)
          shapeCasts_S1x1x16_S16))
      shapeCasts_S16_S1x1x1x16⟩

end Pure

section Casts
open ValueIdx
variable {α : Type}

theorem cast_16_to_4 (v : (⟨1, ![16]⟩ : Shape).Idx → α) (h : (⟨1, ![16]⟩ : Shape).ShapeCasts ⟨4, ![1, 1, 1, 16]⟩)
    (x : (⟨4, ![1, 1, 1, 16]⟩ : Shape).Idx) :
    shapeCast ⟨4, ![1, 1, 1, 16]⟩ v h x = v (ix1 (⟨(x 3).val, (x 3).isLt⟩ : Fin 16)) := by
  refine shapeCast_apply v h x _ ?_
  rw [Shape.rowMajor_val_one, Shape.rowMajor_val_four]
  have h0 : (x 0).val < 1 := (x 0).isLt
  have h1 : (x 1).val < 1 := (x 1).isLt
  have h2 : (x 2).val < 1 := (x 2).isLt
  show (x 3).val = (((x 0).val * 1 + (x 1).val) * 1 + (x 2).val) * 16 + (x 3).val
  omega

theorem cast_4_to_16 (v : (⟨4, ![1, 1, 1, 16]⟩ : Shape).Idx → α) (h : (⟨4, ![1, 1, 1, 16]⟩ : Shape).ShapeCasts ⟨1, ![16]⟩)
    (r : Fin 16) : shapeCast ⟨1, ![16]⟩ v h (ix1 r) = v (ix4 (0 : Fin 1) (0 : Fin 1) (0 : Fin 1) r) := by
  refine shapeCast_apply v h (ix1 r) _ ?_
  rw [Shape.rowMajor_val_one, Shape.rowMajor_val_four]
  show (((0 : Nat) * 1 + 0) * 1 + 0) * 16 + r.val = r.val
  omega

theorem cast_3_to_16 (v : (⟨3, ![1, 1, 16]⟩ : Shape).Idx → α) (h : (⟨3, ![1, 1, 16]⟩ : Shape).ShapeCasts ⟨1, ![16]⟩)
    (r : Fin 16) : shapeCast ⟨1, ![16]⟩ v h (ix1 r) = v (ix3 (0 : Fin 1) (0 : Fin 1) r) := by
  refine shapeCast_apply v h (ix1 r) _ ?_
  rw [Shape.rowMajor_val_one, Shape.rowMajor_val_three]
  show ((0 : Nat) * 1 + 0) * 16 + r.val = r.val
  omega

theorem eq_lane (x : (⟨4, ![1, 1, 1, 16]⟩ : Shape).Idx) : x = ix4 (0 : Fin 1) (0 : Fin 1) (0 : Fin 1) (⟨(x 3).val, (x 3).isLt⟩ : Fin 16) := by
  funext a
  refine Fin.ext ?_
  match a with
  | ⟨0, _⟩ => have h : (x 0).val < 1 := (x 0).isLt; show (x 0).val = 0; omega
  | ⟨1, _⟩ => have h : (x 1).val < 1 := (x 1).isLt; show (x 1).val = 0; omega
  | ⟨2, _⟩ => have h : (x 2).val < 1 := (x 2).isLt; show (x 2).val = 0; omega
  | ⟨3, _⟩ => rfl

end Casts

section Agree
open ValueIdx
variable [FloatOps F] (k : Fin 4) (m : Fin 2) (tv : Nat) (ht : tv < 4)
  (X0 : S4x4x1024.Idx → F .f32) (Xs : Fin 4 → S4x4x4x1024.Idx → F .f32)

theorem mkPiece_lane (b : Fin 4) (q : Fin 64) (r : Fin 16) :
    (mkPiece k m tv ht X0 Xs (b, q)).2 (ix4 (0 : Fin 1) (0 : Fin 1) (0 : Fin 1) r)
      = rowVal k X0 Xs b ⟨tv, ht⟩ ⟨16 * q.val + r.val, by have := q.isLt; have := r.isLt; omega⟩ := by
  unfold mkPiece
  dsimp only
  refine (cast_16_to_4 _ _ _).trans ?_
  refine congrArg₂ FloatOps.addf ((cast_4_to_16 _ _ r).trans ?_) ((cast_3_to_16 _ _ r).trans ?_)
  · unfold readV
    rw [dif_pos (xInbQ k b tv ht q)]
    show Xs b _ = Xs b _
    refine congrArg (Xs b) (funext fun a => Fin.ext ?_)
    match a with
    | ⟨0, _⟩ => show k.val + 1 * 0 = k.val; omega
    | ⟨1, _⟩ => show b.val + 1 * 0 = b.val; omega
    | ⟨2, _⟩ => show tv + 1 * 0 = tv; omega
    | ⟨3, _⟩ => show 16 * q.val + 1 * r.val = 16 * q.val + r.val; omega
  · unfold readV
    rw [dif_pos (pInbQ k tv ht q)]
    show X0 _ = X0 _
    refine congrArg X0 (funext fun a => Fin.ext ?_)
    match a with
    | ⟨0, _⟩ => show k.val + 1 * 0 = k.val; omega
    | ⟨1, _⟩ => show tv + 1 * 0 = tv; omega
    | ⟨2, _⟩ => show 16 * q.val + 1 * r.val = 16 * q.val + r.val; omega

theorem mkPiece_emb (b : Fin 4) (q : Fin 64) (r : Fin 16) :
    (mkPiece k m tv ht X0 Xs (b, q)).1.emb (ix4 (0 : Fin 1) (0 : Fin 1) (0 : Fin 1) r)
      = ix4 m b (⟨tv, ht⟩ : Fin 4) (⟨16 * q.val + r.val, by have := q.isLt; have := r.isLt; omega⟩ : Fin 1024) := by
  funext a
  refine Fin.ext ?_
  match a with
  | ⟨0, _⟩ => show m.val + 1 * 0 = m.val; omega
  | ⟨1, _⟩ => show b.val + 1 * 0 = b.val; omega
  | ⟨2, _⟩ => show tv + 1 * 0 = tv; omega
  | ⟨3, _⟩ => show 16 * q.val + 1 * r.val = 16 * q.val + r.val; omega

/-- Each store's payload is the row's sum on the store's own sixteen lanes. -/
theorem mkPiece_agrees (bq : Fin 4 × Fin 64) (x : (⟨4, ![1, 1, 1, 16]⟩ : Shape).Idx) :
    (mkPiece k m tv ht X0 Xs bq).2 x = rowG k X0 Xs ((mkPiece k m tv ht X0 Xs bq).1.emb x) := by
  obtain ⟨b, q⟩ := bq
  rw [eq_lane x, mkPiece_lane, mkPiece_emb]
  rfl

end Agree

section Trip
open ValueIdx
variable [FloatOps F] (k : Fin 4) (m : Fin 2) (tv : Nat) (ht : tv < 4)
  (X0 : S4x4x1024.Idx → F .f32) (Xs : Fin 4 → S4x4x4x1024.Idx → F .f32)

theorem mem_mkPiece (b b' j : Fin 4) (l : Fin 1024) (q' : Fin 64) :
    ix4 m b j l ∈ (mkPiece k m tv ht X0 Xs (b', q')).1.set
      ↔ b = b' ∧ j.val = tv ∧ 16 * q'.val ≤ l.val ∧ l.val < 16 * q'.val + 16 := by
  unfold mkPiece
  dsimp only
  rw [Rect.mem_set_unit]
  constructor
  · intro h
    have h1 := h 1; have h2 := h 2; have h3 := h 3
    refine ⟨Fin.ext ?_, ?_, ?_, ?_⟩
    · have e : b'.val ≤ b.val ∧ b.val < b'.val + 1 := h1
      omega
    · have e : tv ≤ j.val ∧ j.val < tv + 1 := h2
      omega
    · have e : 16 * q'.val ≤ l.val ∧ l.val < 16 * q'.val + 16 := h3
      exact e.1
    · have e : 16 * q'.val ≤ l.val ∧ l.val < 16 * q'.val + 16 := h3
      exact e.2
  · rintro ⟨rfl, hj, hl1, hl2⟩ a
    match a with
    | ⟨0, _⟩ => show m.val ≤ m.val ∧ m.val < m.val + 1; omega
    | ⟨1, _⟩ => show b.val ≤ b.val ∧ b.val < b.val + 1; omega
    | ⟨2, _⟩ => show tv ≤ j.val ∧ j.val < tv + 1; omega
    | ⟨3, _⟩ => show 16 * q'.val ≤ l.val ∧ l.val < 16 * q'.val + 16; exact ⟨hl1, hl2⟩

/-- Over contents whose rows below the trip's hold the sums, the trip's 256 stores leave the rows up to its own holding them. -/
theorem trip_value (f' : S2x4x4x1024.Idx → F .f32)
    (hIH : ∀ (b j : Fin 4) (l : Fin 1024), j.val < tv → f' (ix4 m b j l) = rowVal k X0 Xs b j l)
    (b j : Fin 4) (l : Fin 1024) (hj : j.val < tv + 1) :
    (sB : Memref sig .scVector .vmem S2x4x4x1024 .f32).view.writes (Elt F) f' (idxList.map (mkPiece k m tv ht X0 Xs)) (ix4 m b j l)
      = rowVal k X0 Xs b j l := by
  by_cases h : j.val = tv
  · have hl := l.isLt
    have hcov := View.read_writes_apply_of_pieces (sB : Memref sig .scVector .vmem S2x4x4x1024 .f32).view f' (rowG k X0 Xs)
      (idxList.map (mkPiece k m tv ht X0 Xs))
      (fun p hp x => by
        obtain ⟨bq, -, rfl⟩ := List.mem_map.1 hp
        exact mkPiece_agrees k m tv ht X0 Xs bq x)
      (ix4 m b j l)
      ⟨mkPiece k m tv ht X0 Xs (b, (⟨l.val / 16, by omega⟩ : Fin 64)),
        List.mem_map.2 ⟨_, mem_idxList _, rfl⟩,
        (mem_mkPiece k m tv ht X0 Xs b b j l _).2 ⟨rfl, h, by show 16 * (l.val / 16) ≤ l.val; omega, by show l.val < 16 * (l.val / 16) + 16; omega⟩⟩
    generalize (sB : Memref sig .scVector .vmem S2x4x4x1024 .f32).view.writes (Elt F) f' (idxList.map (mkPiece k m tv ht X0 Xs)) = g at hcov ⊢
    exact hcov
  · have hun := View.read_writes_apply_of_forall_not_mem (sB : Memref sig .scVector .vmem S2x4x4x1024 .f32).view f' (ix4 m b j l)
      (idxList.map (mkPiece k m tv ht X0 Xs))
      (fun p hp hm => by
        obtain ⟨⟨b', q'⟩, -, rfl⟩ := List.mem_map.1 hp
        exact h ((mem_mkPiece k m tv ht X0 Xs b b' j l q').1 hm).2.1)
    generalize (sB : Memref sig .scVector .vmem S2x4x4x1024 .f32).view.writes (Elt F) f' (idxList.map (mkPiece k m tv ht X0 Xs)) = g at hun ⊢
    exact hun.trans (hIH b j l (by omega))

end Trip

def selX {α : Type} (X10 X11 X12 X13 : α) (b : Fin 4) : α :=
  if b.val = 0 then X10 else if b.val = 1 then X11 else if b.val = 2 then X12 else X13

section SlotRead
open ValueIdx
variable [FloatOps F]

theorem xslot_read (k b : Fin 4) (inb : ∀ a, (![k.val, b.val, 0, 0] : Fin 4 → Nat) a + S1x1x4x1024.size a ≤ S4x4x4x1024.size a)
    (X : S4x4x4x1024.Idx → F .f32) (j : Fin 4) (l : Fin 1024) :
    (((xB : Memref sig .scVector .vmem S4x4x4x1024 .f32).slice (Rect.unit (s := S4x4x4x1024) ![k.val, b.val, 0, 0] S1x1x4x1024.size inb) (fun _ => rfl)).squeeze S4x1024
        squeezes_S1x1x4x1024_S4x1024).view.read (Elt F) X (ix2 j l)
      = X (ix4 k b j l) := by
  rw [Memref.read_squeeze_slice (Val := Elt F) (xB : Memref sig .scVector .vmem S4x4x4x1024 .f32) _ (fun _ => rfl) squeezes_S1x1x4x1024_S4x1024
    squeezes_S1x1x4x1024_S4x1024.numel_eq X]
  refine (shapeCast_apply _ _ (ix2 j l) (ix4 (0 : Fin 1) (0 : Fin 1) j l) ?_).trans ?_
  · rw [Shape.rowMajor_val_four, Shape.rowMajor_val_two]
    show (((0 : Nat) * 1 + 0) * 4 + j.val) * 1024 + l.val = j.val * 1024 + l.val
    omega
  · show X _ = X _
    refine congrArg X (funext fun a => Fin.ext ?_)
    match a with
    | ⟨0, _⟩ => show k.val + 1 * 0 = k.val; omega
    | ⟨1, _⟩ => show b.val + 1 * 0 = b.val; omega
    | ⟨2, _⟩ => show 0 + 1 * j.val = j.val; omega
    | ⟨3, _⟩ => show 0 + 1 * l.val = l.val; omega

theorem pslot_read (k : Fin 4) (inb : ∀ a, (![k.val, 0, 0] : Fin 3 → Nat) a + S1x4x1024.size a ≤ S4x4x1024.size a)
    (X : S4x4x1024.Idx → F .f32) (j : Fin 4) (l : Fin 1024) :
    (((pB : Memref sig .scVector .vmem S4x4x1024 .f32).slice (Rect.unit (s := S4x4x1024) ![k.val, 0, 0] S1x4x1024.size inb) (fun _ => rfl)).squeeze S4x1024
        squeezes_S1x4x1024_S4x1024).view.read (Elt F) X (ix2 j l)
      = X (ix3 k j l) := by
  rw [Memref.read_squeeze_slice (Val := Elt F) (pB : Memref sig .scVector .vmem S4x4x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show k.val + 1 * 0 = k.val; omega
    | ⟨1, _⟩ => show 0 + 1 * j.val = j.val; omega
    | ⟨2, _⟩ => show 0 + 1 * l.val = l.val; omega

end SlotRead

theorem landed_apply {κ : Kind} {sp : Space} {s : Shape} {e : EltTy} {Val : EltTy → Type} (v : View sig κ sp s e) (g : v.ty.Contents Val)
    (w : s.Idx → Val e) (y : s.Idx) :
    v.read Val (v.writes Val g [⟨Rect.whole s, ReadAs.same.apply w⟩]) y = w y := by
  have h := View.read_writes_cons_emb v g (Rect.whole s) (ReadAs.same.apply w) [] y
  rwa [Rect.emb_whole_apply] at h

end Cert.Proof.KB

end
-- ==== Proof.BSvb.lean ====
import proofs.«210091_g81140522156176_cont_9to1_m_468_11_alg».proof.Proof.BInnerTrip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem svbInb (mb : Fin 2 × Fin 4) : ∀ a, (![mb.1.val, mb.2.val, 0, 0] : Fin 4 → Nat) a + S1x1x4x1024.size a ≤ S2x4x4x1024.size a := by
  intro a; fin_cases a <;> simp <;> omega
abbrev sRect (mb : Fin 2 × Fin 4) : Rect S2x4x4x1024 :=
  Rect.unit (s := S2x4x4x1024) ![mb.1.val, mb.2.val, 0, 0] S1x1x4x1024.size (svbInb mb)

theorem mem_sRect (x : S2x4x4x1024.Idx) (mb : Fin 2 × Fin 4) : x ∈ (sRect mb).set ↔ (x 0).val = mb.1.val ∧ (x 1).val = mb.2.val := by
  have h2 : (x 2).val < 4 := (x 2).isLt
  have h3 : (x 3).val < 1024 := (x 3).isLt
  rw [Rect.mem_set_unit]
  constructor
  · intro h
    have h0 := h 0
    have h1 := h 1
    simp at h0 h1
    omega
  · rintro ⟨e0, e1⟩ a
    match a with
    | 0 => simp; omega
    | 1 => simp; omega
    | 2 => simp; omega
    | 3 => simp; omega

theorem sRect_disjoint (mb mb' : Fin 2 × Fin 4) (h : mb ≠ mb') : Disjoint (sRect mb).set (sRect mb').set := by
  refine Finset.disjoint_left.mpr fun x hx hx' => h ?_
  obtain ⟨a0, a1⟩ := (mem_sRect x mb).mp hx
  obtain ⟨b0, b1⟩ := (mem_sRect x mb').mp hx'
  exact Prod.ext (Fin.ext (a0.symm.trans b0)) (Fin.ext (a1.symm.trans b1))
theorem sRect_cover (x : S2x4x4x1024.Idx) : ∃ mb : Fin 2 × Fin 4, x ∈ (sRect mb).set :=
  ⟨(⟨(x 0).val, (x 0).isLt⟩, ⟨(x 1).val, (x 1).isLt⟩), (mem_sRect x _).mpr ⟨rfl, rfl⟩⟩

theorem sB_slot_set (off : Fin 4 → Nat) (inb : ∀ a, off a + S1x1x4x1024.size a ≤ S2x4x4x1024.size a) :
    (((sB : Memref sig .scVector .vmem S2x4x4x1024 .f32).slice (Rect.unit (s := S2x4x4x1024) off S1x1x4x1024.size inb) (fun _ => rfl)).squeeze S4x1024
        squeezes_S1x1x4x1024_S4x1024).view.set
      = (Rect.unit (s := S2x4x4x1024) off S1x1x4x1024.size inb).set := by
  show (((View.whole (cc0_scratch2 : Ref sig .scVector)).slice (Rect.unit (s := S2x4x4x1024) off S1x1x4x1024.size inb)).reshape S4x1024
      squeezes_S1x1x4x1024_S4x1024.numel_eq).set = _
  rw [View.set_reshape, View.set_slice_whole]

theorem sS00_set : (sS00 : Memref sig .scVector .vmem S4x1024 .f32).view.set = (sRect (0, 0)).set := sB_slot_set _ _
theorem sS01_set : (sS01 : Memref sig .scVector .vmem S4x1024 .f32).view.set = (sRect (0, 1)).set := sB_slot_set _ _
theorem sS02_set : (sS02 : Memref sig .scVector .vmem S4x1024 .f32).view.set = (sRect (0, 2)).set := sB_slot_set _ _
theorem sS03_set : (sS03 : Memref sig .scVector .vmem S4x1024 .f32).view.set = (sRect (0, 3)).set := sB_slot_set _ _
theorem sS10_set : (sS10 : Memref sig .scVector .vmem S4x1024 .f32).view.set = (sRect (1, 0)).set := sB_slot_set _ _
theorem sS11_set : (sS11 : Memref sig .scVector .vmem S4x1024 .f32).view.set = (sRect (1, 1)).set := sB_slot_set _ _
theorem sS12_set : (sS12 : Memref sig .scVector .vmem S4x1024 .f32).view.set = (sRect (1, 2)).set := sB_slot_set _ _
theorem sS13_set : (sS13 : Memref sig .scVector .vmem S4x1024 .f32).view.set = (sRect (1, 3)).set := sB_slot_set _ _
theorem sS00_pts (d : Dev nD) (c : Fin τ.nSC) (i : Fin τ.nSub) (f : Buf (Elt F) ((V d c i).loc cc0_scratch2)) :
    (sS00.view.loc (V d c i) ↦[sS00.view.set]{fullShare} f : sProp 𝕄) = ((V d c i).loc cc0_scratch2 ↦[(sRect (0, 0)).set]{fullShare} f) := by rw [sS00_set]
theorem sS01_pts (d : Dev nD) (c : Fin τ.nSC) (i : Fin τ.nSub) (f : Buf (Elt F) ((V d c i).loc cc0_scratch2)) :
    (sS01.view.loc (V d c i) ↦[sS01.view.set]{fullShare} f : sProp 𝕄) = ((V d c i).loc cc0_scratch2 ↦[(sRect (0, 1)).set]{fullShare} f) := by rw [sS01_set]
theorem sS02_pts (d : Dev nD) (c : Fin τ.nSC) (i : Fin τ.nSub) (f : Buf (Elt F) ((V d c i).loc cc0_scratch2)) :
    (sS02.view.loc (V d c i) ↦[sS02.view.set]{fullShare} f : sProp 𝕄) = ((V d c i).loc cc0_scratch2 ↦[(sRect (0, 2)).set]{fullShare} f) := by rw [sS02_set]
theorem sS03_pts (d : Dev nD) (c : Fin τ.nSC) (i : Fin τ.nSub) (f : Buf (Elt F) ((V d c i).loc cc0_scratch2)) :
    (sS03.view.loc (V d c i) ↦[sS03.view.set]{fullShare} f : sProp 𝕄) = ((V d c i).loc cc0_scratch2 ↦[(sRect (0, 3)).set]{fullShare} f) := by rw [sS03_set]
theorem sS10_pts (d : Dev nD) (c : Fin τ.nSC) (i : Fin τ.nSub) (f : Buf (Elt F) ((V d c i).loc cc0_scratch2)) :
    (sS10.view.loc (V d c i) ↦[sS10.view.set]{fullShare} f : sProp 𝕄) = ((V d c i).loc cc0_scratch2 ↦[(sRect (1, 0)).set]{fullShare} f) := by rw [sS10_set]
theorem sS11_pts (d : Dev nD) (c : Fin τ.nSC) (i : Fin τ.nSub) (f : Buf (Elt F) ((V d c i).loc cc0_scratch2)) :
    (sS11.view.loc (V d c i) ↦[sS11.view.set]{fullShare} f : sProp 𝕄) = ((V d c i).loc cc0_scratch2 ↦[(sRect (1, 1)).set]{fullShare} f) := by rw [sS11_set]
theorem sS12_pts (d : Dev nD) (c : Fin τ.nSC) (i : Fin τ.nSub) (f : Buf (Elt F) ((V d c i).loc cc0_scratch2)) :
    (sS12.view.loc (V d c i) ↦[sS12.view.set]{fullShare} f : sProp 𝕄) = ((V d c i).loc cc0_scratch2 ↦[(sRect (1, 2)).set]{fullShare} f) := by rw [sS12_set]
theorem sS13_pts (d : Dev nD) (c : Fin τ.nSC) (i : Fin τ.nSub) (f : Buf (Elt F) ((V d c i).loc cc0_scratch2)) :
    (sS13.view.loc (V d c i) ↦[sS13.view.set]{fullShare} f : sProp 𝕄) = ((V d c i).loc cc0_scratch2 ↦[(sRect (1, 3)).set]{fullShare} f) := by rw [sS13_set]

theorem univ_fin2x4 : (Finset.univ : Finset (Fin 2 × Fin 4)) = {(0, 0), (0, 1), (0, 2), (0, 3), (1, 0), (1, 1), (1, 2), (1, 3)} := by decide
theorem bigSep_fin2x4 (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) := by
  rw [univ_fin2x4, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem half_set (m m' : Fin 2) (h : m ≠ m') :
    ((((Finset.univ \ (sRect (m', 0)).set) \ (sRect (m', 1)).set) \ (sRect (m', 2)).set) \ (sRect (m', 3)).set)
      = (Finset.univ : Finset (Fin 4)).biUnion fun b => (sRect (m, b)).set := by
  ext x
  have hx0 : (x 0).val < 2 := (x 0).isLt
  have hx1 : (x 1).val < 4 := (x 1).isLt
  have hm : m.val ≠ m'.val := fun e => h (Fin.ext e)
  have hmv := m.isLt
  have hm'v := m'.isLt
  simp only [Finset.mem_sdiff, Finset.mem_univ, true_and, Finset.mem_biUnion, mem_sRect]
  constructor
  · rintro ⟨⟨⟨n0, n1⟩, n2⟩, n3⟩
    refine ⟨⟨(x 1).val, hx1⟩, ?_, rfl⟩
    simp only [Fin.val_zero, Fin.val_one, Fin.val_two] at n0 n1 n2
    omega
  · rintro ⟨b, e0, -⟩
    refine ⟨⟨⟨fun hh => ?_, fun hh => ?_⟩, fun hh => ?_⟩, fun hh => ?_⟩ <;> omega

section Svb
variable (d : Dev nD) (c : Fin τ.nSC) (i : Fin τ.nSub)

theorem svb_half (m m' : Fin 2) (h : m ≠ m') (f : Buf (Elt F) ((V d c i).loc cc0_scratch2)) :
    ((V d c i).loc cc0_scratch2 ↦[((((Finset.univ \ (sRect (m', 0)).set) \ (sRect (m', 1)).set) \ (sRect (m', 2)).set) \ (sRect (m', 3)).set)]{fullShare} f : sProp 𝕄)
      = iprop(((V d c i).loc cc0_scratch2 ↦[(sRect (m, 0)).set]{fullShare} f) ∗ ((V d c i).loc cc0_scratch2 ↦[(sRect (m, 1)).set]{fullShare} f)
          ∗ ((V d c i).loc cc0_scratch2 ↦[(sRect (m, 2)).set]{fullShare} f) ∗ ((V d c i).loc cc0_scratch2 ↦[(sRect (m, 3)).set]{fullShare} f)) := by
  rw [half_set m m' h, pointsTo_biUnion Finset.univ (ℓ := (V d c i).loc cc0_scratch2) (fun b : Fin 4 => (sRect (m, b)).set)
    (fun b _ b' _ hb => sRect_disjoint _ _ fun e => hb (Prod.mk.inj e).2), bigSep_fin4]

theorem svb_half0 (f : Buf (Elt F) ((V d c i).loc cc0_scratch2)) :
    (sB.view.loc (V d c i) ↦[(((Finset.univ \ sS10.view.set) \ sS11.view.set) \ sS12.view.set) \ sS13.view.set]{fullShare} f : sProp 𝕄)
      = iprop((sS00.view.loc (V d c i) ↦[sS00.view.set]{fullShare} f)
        ∗ (sS01.view.loc (V d c i) ↦[sS01.view.set]{fullShare} f)
        ∗ (sS02.view.loc (V d c i) ↦[sS02.view.set]{fullShare} f)
        ∗ (sS03.view.loc (V d c i) ↦[sS03.view.set]{fullShare} f)) := by
  rw [sS10_set, sS11_set, sS12_set, sS13_set]
  exact (svb_half d c i 0 1 (by decide) f).trans
    (sep_congr' (sS00_pts d c i f).symm (sep_congr' (sS01_pts d c i f).symm (sep_congr' (sS02_pts d c i f).symm ((sS03_pts d c i f).symm))))

theorem svb_half1 (f : Buf (Elt F) ((V d c i).loc cc0_scratch2)) :
    (sB.view.loc (V d c i) ↦[(((Finset.univ \ sS00.view.set) \ sS01.view.set) \ sS02.view.set) \ sS03.view.set]{fullShare} f : sProp 𝕄)
      = iprop((sS10.view.loc (V d c i) ↦[sS10.view.set]{fullShare} f)
        ∗ (sS11.view.loc (V d c i) ↦[sS11.view.set]{fullShare} f)
        ∗ (sS12.view.loc (V d c i) ↦[sS12.view.set]{fullShare} f)
        ∗ (sS13.view.loc (V d c i) ↦[sS13.view.set]{fullShare} f)) := by
  rw [sS00_set, sS01_set, sS02_set, sS03_set]
  exact (svb_half d c i 1 0 (by decide) f).trans
    (sep_congr' (sS10_pts d c i f).symm (sep_congr' (sS11_pts d c i f).symm (sep_congr' (sS12_pts d c i f).symm ((sS13_pts d c i f).symm))))

/-- The sum buffer held whole is its eight windows held one by one at the same contents. -/
theorem svb_slots (f : Buf (Elt F) ((V d c i).loc cc0_scratch2)) :
    (sB.view.loc (V d c i) ↦{fullShare} f : sProp 𝕄)
      = iprop((sS00.view.loc (V d c i) ↦[sS00.view.set]{fullShare} f)
        ∗ (sS01.view.loc (V d c i) ↦[sS01.view.set]{fullShare} f)
        ∗ (sS02.view.loc (V d c i) ↦[sS02.view.set]{fullShare} f)
        ∗ (sS03.view.loc (V d c i) ↦[sS03.view.set]{fullShare} f)
        ∗ (sS10.view.loc (V d c i) ↦[sS10.view.set]{fullShare} f)
        ∗ (sS11.view.loc (V d c i) ↦[sS11.view.set]{fullShare} f)
        ∗ (sS12.view.loc (V d c i) ↦[sS12.view.set]{fullShare} f)
        ∗ (sS13.view.loc (V d c i) ↦[sS13.view.set]{fullShare} f)) :=
  (pointsTo_cover (ℓ := (V d c i).loc cc0_scratch2) (fun mb : Fin 2 × Fin 4 => (sRect mb).set) sRect_disjoint sRect_cover f).trans
    ((bigSep_fin2x4 _).trans (sep_congr' (sS00_pts d c i f).symm (sep_congr' (sS01_pts d c i f).symm (sep_congr' (sS02_pts d c i f).symm (sep_congr' (sS03_pts d c i f).symm (sep_congr' (sS10_pts d c i f).symm (sep_congr' (sS11_pts d c i f).symm (sep_congr' (sS12_pts d c i f).symm ((sS13_pts d c i f).symm)))))))))

theorem sep4_assoc_eq (A B C D R : sProp 𝕄) : (iprop((A ∗ B ∗ C ∗ D) ∗ R) : sProp 𝕄) = iprop(A ∗ B ∗ C ∗ D ∗ R) := by
  refine BI.equiv_iff.mp ⟨(show iprop((A ∗ B ∗ C ∗ D) ∗ R) ⊢ iprop(A ∗ B ∗ C ∗ D ∗ R) from ?_), (show iprop(A ∗ B ∗ C ∗ D ∗ R) ⊢ iprop((A ∗ B ∗ C ∗ D) ∗ R) from ?_)⟩
  · iintro ⟨⟨HA, HB, HC, HD⟩, HR⟩
    isplitl [HA]; · iexact HA
    isplitl [HB]; · iexact HB
    isplitl [HC]; · iexact HC
    isplitl [HD]; · iexact HD
    iexact HR
  · iintro ⟨HA, HB, HC, HD, HR⟩
    isplitl [HA HB HC HD]
    · isplitl [HA]; · iexact HA
      isplitl [HB]; · iexact HB
      isplitl [HC]; · iexact HC
      iexact HD
    iexact HR

theorem svb_join (f0 f1 : Buf (Elt F) ((V d c i).loc cc0_scratch2)) :
    iprop(((sS00.view.loc (V d c i) ↦[sS00.view.set]{fullShare} f0)
        ∗ (sS01.view.loc (V d c i) ↦[sS01.view.set]{fullShare} f0)
        ∗ (sS02.view.loc (V d c i) ↦[sS02.view.set]{fullShare} f0)
        ∗ (sS03.view.loc (V d c i) ↦[sS03.view.set]{fullShare} f0))
        ∗ ((sS10.view.loc (V d c i) ↦[sS10.view.set]{fullShare} f1)
        ∗ (sS11.view.loc (V d c i) ↦[sS11.view.set]{fullShare} f1)
        ∗ (sS12.view.loc (V d c i) ↦[sS12.view.set]{fullShare} f1)
        ∗ (sS13.view.loc (V d c i) ↦[sS13.view.set]{fullShare} f1)))
      ⊢ (iprop(∃ f, sB.view.loc (V d c i) ↦{fullShare} f) : sProp 𝕄) := by
  refine Entails.trans (Entails.of_eq ?_)
    (pointsTo_cover_join (ℓ := (V d c i).loc cc0_scratch2) (fun mb : Fin 2 × Fin 4 => (sRect mb).set) sRect_disjoint sRect_cover
      (fun mb => ![f0, f1] mb.1))
  exact (sep4_assoc_eq _ _ _ _ _).trans ((sep_congr' (sS00_pts d c i f0) (sep_congr' (sS01_pts d c i f0) (sep_congr' (sS02_pts d c i f0) (sep_congr' (sS03_pts d c i f0) (sep_congr' (sS10_pts d c i f1) (sep_congr' (sS11_pts d c i f1) (sep_congr' (sS12_pts d c i f1) ((sS13_pts d c i f1))))))))).trans
    (bigSep_fin2x4 (fun mb : Fin 2 × Fin 4 => ((V d c i).loc cc0_scratch2 ↦[(sRect mb).set]{fullShare} ![f0, f1] mb.1 : sProp 𝕄))).symm)
end Svb

end Cert.Proof.KB

end
-- ==== Proof.BInner.lean ====
import proofs.«210091_g81140522156176_cont_9to1_m_468_11_alg».proof.Proof.BInnerTrip
import proofs.«210091_g81140522156176_cont_9to1_m_468_11_alg».proof.Proof.Gen.Kernel.Skeleton
import Idealize.ShloMosaic.Lib.Tactic
import Idealize.ShloMosaic.Lib.Pipeline.Kit
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner0

variable (d : Dev nD) (L : grid0.Coords)
  (X0 : Buf (Elt F) (pS0.view.loc (thr d L))) (X10 : Buf (Elt F) (xS00.view.loc (thr d L))) (X11 : Buf (Elt F) (xS01.view.loc (thr d L)))
  (X12 : Buf (Elt F) (xS02.view.loc (thr d L))) (X13 : Buf (Elt F) (xS03.view.loc (thr d L)))

theorem slotSum0 (b : Fin 4) (l : Fin 1024) (j' : Fin 4) :
    FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))
      = rowVal (0 : Fin 4) X0 (selX X10 X11 X12 X13) b j' l := by
  refine congrArg₂ FloatOps.addf ?_ (pslot_read (0 : Fin 4) _ X0 j' l)
  match b with
  | ⟨0, hb⟩ =>
    show View.read (Elt F) xS00.view X10 (ValueIdx.ix2 j' l) = X10 (ValueIdx.ix4 (0 : Fin 4) (⟨0, hb⟩ : Fin 4) j' l)
    exact xslot_read (0 : Fin 4) (⟨0, hb⟩ : Fin 4) _ X10 j' l
  | ⟨1, hb⟩ =>
    show View.read (Elt F) xS01.view X11 (ValueIdx.ix2 j' l) = X11 (ValueIdx.ix4 (0 : Fin 4) (⟨1, hb⟩ : Fin 4) j' l)
    exact xslot_read (0 : Fin 4) (⟨1, hb⟩ : Fin 4) _ X11 j' l
  | ⟨2, hb⟩ =>
    show View.read (Elt F) xS02.view X12 (ValueIdx.ix2 j' l) = X12 (ValueIdx.ix4 (0 : Fin 4) (⟨2, hb⟩ : Fin 4) j' l)
    exact xslot_read (0 : Fin 4) (⟨2, hb⟩ : Fin 4) _ X12 j' l
  | ⟨3, hb⟩ =>
    show View.read (Elt F) xS03.view X13 (ValueIdx.ix2 j' l) = X13 (ValueIdx.ix4 (0 : Fin 4) (⟨3, hb⟩ : Fin 4) j' l)
    exact xslot_read (0 : Fin 4) (⟨3, hb⟩ : Fin 4) _ X13 j' l

/-- Before row j: the five source blocks as they were, and rows below j of the destination block at activation plus table row. -/
def innerInv0 (j : ℕ) (_ : PUnit) : sProp 𝕄 :=
  iprop((pS0.view.loc (thr d L) ↦[pS0.view.set]{fullShare} X0) ∗ (xS00.view.loc (thr d L) ↦[xS00.view.set]{fullShare} X10) ∗ (xS01.view.loc (thr d L) ↦[xS01.view.set]{fullShare} X11)
    ∗ (xS02.view.loc (thr d L) ↦[xS02.view.set]{fullShare} X12) ∗ (xS03.view.loc (thr d L) ↦[xS03.view.set]{fullShare} X13)
    ∗ ∃ f', (sB.view.loc (thr d L) ↦[(((Finset.univ \ sS10.view.set) \ sS11.view.set) \ sS12.view.set) \ sS13.view.set]{fullShare} f')
      ∗ ⌜∀ (b : Fin 4) (l : Fin 1024) (j' : Fin 4), j'.val < j → f' (ValueIdx.ix4 (0 : Fin 2) b j' l)
          = FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner0_region (v2 : BitVec 32) (t1 : Fin k0_t1_loop.trips) (arg14 v186 : BitVec 32)
    (t2 : Fin (Scf.trips k0_t2_loop.lb k0_t2_loop.ub k0_t2_loop.st)) (acc : PUnit) :
    innerInv0 d L X0 X10 X11 X12 X13 t2.val acc
      ⊢ wp frame (wpE (defs₀ (F := F)) 𝒱₀ (thr d L) none) Set.univ
          (k0_t2_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 arg14 v186 t2 acc)
          fun x => innerInv0 d L X0 X10 X11 X12 X13 (t2.val + 1) x := by
  have ht2 : t2.val < 4 := Nat.lt_of_lt_of_le t2.isLt k0_t2_abs.2.1
  unfold innerInv0
  unfold k0_t2_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (0 : Fin 4) (0 : Fin 2) t2.val ht2 X0 (selX X10 X11 X12 X13) f'
      (fun b j l h => (hIH b l j h).trans (slotSum0 d L X0 X10 X11 X12 X13 b l j)) b j' l hj)).trans
    (slotSum0 d L X0 X10 X11 X12 X13 b l j').symm
  case hL =>
    iterate 10 sl_unfold_run_names
    simp only [readAt_unit_closed]
    rfl

end Inner0

section Inner0W

variable (d : Dev nD) (L : grid0.Coords)
  (X0 : Buf (Elt F) (pS0.view.loc (thr d L))) (X10 : Buf (Elt F) (xS00.view.loc (thr d L))) (X11 : Buf (Elt F) (xS01.view.loc (thr d L)))
  (X12 : Buf (Elt F) (xS02.view.loc (thr d L))) (X13 : Buf (Elt F) (xS03.view.loc (thr d L)))

def innerInv0W (j : ℕ) (_ : PUnit) : sProp 𝕄 :=
  iprop((pS0.view.loc (thr d L) ↦[pS0.view.set]{fullShare} X0) ∗ (xS00.view.loc (thr d L) ↦[xS00.view.set]{fullShare} X10) ∗ (xS01.view.loc (thr d L) ↦[xS01.view.set]{fullShare} X11)
    ∗ (xS02.view.loc (thr d L) ↦[xS02.view.set]{fullShare} X12) ∗ (xS03.view.loc (thr d L) ↦[xS03.view.set]{fullShare} X13)
    ∗ ∃ f', (sB.view.loc (thr d L) ↦{fullShare} f')
      ∗ ⌜∀ (b : Fin 4) (l : Fin 1024) (j' : Fin 4), j'.val < j → f' (ValueIdx.ix4 (0 : Fin 2) b j' l)
          = FloatOps.addf ((if b.val = 0 then xS00.view.read (Elt F) X10 else if b.val = 1 then xS01.view.read (Elt F) X11 else if b.val = 2 then xS02.view.read (Elt F) X12 else xS03.view.read (Elt F) X13) (ValueIdx.ix2 j' l)) (pS0.view.read (Elt F) X0 (ValueIdx.ix2 j' l))⌝)

set_option sl_exec.closedPieces true in
set_option maxHeartbeats 8000000 in
set_option maxRecDepth 65536 in
theorem inner0W_region (v2 : BitVec 32) (t1 : Fin k0_t1_loop.trips) (arg14 v186 : BitVec 32)
    (t2 : Fin (Scf.trips k0_t2_loop.lb k0_t2_loop.ub k0_t2_loop.st)) (acc : PUnit) :
    innerInv0W d L X0 X10 X11 X12 X13 t2.val acc
      ⊢ wp frame (wpE (defs₀ (F := F)) 𝒱₀ (thr d L) none) Set.univ
          (k0_t2_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 arg14 v186 t2 acc)
          fun x => innerInv0W d L X0 X10 X11 X12 X13 (t2.val + 1) x := by
  have ht2 : t2.val < 4 := Nat.lt_of_lt_of_le t2.isLt k0_t2_abs.2.1
  unfold innerInv0W
  unfold k0_t2_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (0 : Fin 4) (0 : Fin 2) t2.val ht2 X0 (selX X10 X11 X12 X13) f'
      (fun b j l h => (hIH b l j h).trans (slotSum0 d L X0 X10 X11 X12 X13 b l j)) b j' l hj)).trans
    (slotSum0 d L X0 X10 X11 X12 X13 b l j').symm
  case hL =>
    iterate 10 sl_unfold_run_names
    simp only [readAt_unit_closed]
    rfl

end Inner0W

end Cert.Proof.KB

end
-- ==== Proof.BInner1.lean ====
import proofs.«210091_g81140522156176_cont_9to1_m_468_11_alg».proof.Proof.BInnerTrip
import proofs.«210091_g81140522156176_cont_9to1_m_468_11_alg».proof.Proof.Gen.Kernel.Skeleton
import Idealize.ShloMosaic.Lib.Tactic
import Idealize.ShloMosaic.Lib.Pipeline.Kit
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner1

variable (d : Dev nD) (L : grid0.Coords)
  (X0 : Buf (Elt F) (pS1.view.loc (thr d L))) (X10 : Buf (Elt F) (xS10.view.loc (thr d L))) (X11 : Buf (Elt F) (xS11.view.loc (thr d L)))
  (X12 : Buf (Elt F) (xS12.view.loc (thr d L))) (X13 : Buf (Elt F) (xS13.view.loc (thr d L)))

theorem slotSum1 (b : Fin 4) (l : Fin 1024) (j' : Fin 4) :
    FloatOps.addf ((if b.val = 0 then xS10.view.read (Elt F) X10 else if b.val = 1 then xS11.view.read (Elt F) X11 else if b.val = 2 then xS12.view.read (Elt F) X12 else xS13.view.read (Elt F) X13) (ValueIdx.ix2 j' l)) (pS1.view.read (Elt F) X0 (ValueIdx.ix2 j' l))
      = rowVal (1 : Fin 4) X0 (selX X10 X11 X12 X13) b j' l := by
  refine congrArg₂ FloatOps.addf ?_ (pslot_read (1 : Fin 4) _ X0 j' l)
  match b with
  | ⟨0, hb⟩ =>
    show View.read (Elt F) xS10.view X10 (ValueIdx.ix2 j' l) = X10 (ValueIdx.ix4 (1 : Fin 4) (⟨0, hb⟩ : Fin 4) j' l)
    exact xslot_read (1 : Fin 4) (⟨0, hb⟩ : Fin 4) _ X10 j' l
  | ⟨1, hb⟩ =>
    show View.read (Elt F) xS11.view X11 (ValueIdx.ix2 j' l) = X11 (ValueIdx.ix4 (1 : Fin 4) (⟨1, hb⟩ : Fin 4) j' l)
    exact xslot_read (1 : Fin 4) (⟨1, hb⟩ : Fin 4) _ X11 j' l
  | ⟨2, hb⟩ =>
    show View.read (Elt F) xS12.view X12 (ValueIdx.ix2 j' l) = X12 (ValueIdx.ix4 (1 : Fin 4) (⟨2, hb⟩ : Fin 4) j' l)
    exact xslot_read (1 : Fin 4) (⟨2, hb⟩ : Fin 4) _ X12 j' l
  | ⟨3, hb⟩ =>
    show View.read (Elt F) xS13.view X13 (ValueIdx.ix2 j' l) = X13 (ValueIdx.ix4 (1 : Fin 4) (⟨3, hb⟩ : Fin 4) j' l)
    exact xslot_read (1 : Fin 4) (⟨3, hb⟩ : Fin 4) _ X13 j' l

/-- Before row j: the five source blocks as they were, and rows below j of the destination block at activation plus table row. -/
def innerInv1 (j : ℕ) (_ : PUnit) : sProp 𝕄 :=
  iprop((pS1.view.loc (thr d L) ↦[pS1.view.set]{fullShare} X0) ∗ (xS10.view.loc (thr d L) ↦[xS10.view.set]{fullShare} X10) ∗ (xS11.view.loc (thr d L) ↦[xS11.view.set]{fullShare} X11)
    ∗ (xS12.view.loc (thr d L) ↦[xS12.view.set]{fullShare} X12) ∗ (xS13.view.loc (thr d L) ↦[xS13.view.set]{fullShare} X13)
    ∗ ∃ f', (sB.view.loc (thr d L) ↦[(((Finset.univ \ sS00.view.set) \ sS01.view.set) \ sS02.view.set) \ sS03.view.set]{fullShare} f')
      ∗ ⌜∀ (b : Fin 4) (l : Fin 1024) (j' : Fin 4), j'.val < j → f' (ValueIdx.ix4 (1 : Fin 2) b j' l)
          = FloatOps.addf ((if b.val = 0 then xS10.view.read (Elt F) X10 else if b.val = 1 then xS11.view.read (Elt F) X11 else if b.val = 2 then xS12.view.read (Elt F) X12 else xS13.view.read (Elt F) X13) (ValueIdx.ix2 j' l)) (pS1.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner1_region (v2 : BitVec 32) (t1 : Fin k0_t1_loop.trips) (v269 c0_i32_348 c1_i32_350 : BitVec 32)
    (t2 : Fin (Scf.trips k0_t3_loop.lb k0_t3_loop.ub k0_t3_loop.st)) (acc : PUnit) :
    innerInv1 d L X0 X10 X11 X12 X13 t2.val acc
      ⊢ wp frame (wpE (defs₀ (F := F)) 𝒱₀ (thr d L) none) Set.univ
          (k0_t3_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v269 c0_i32_348 c1_i32_350 t2 acc)
          fun x => innerInv1 d L X0 X10 X11 X12 X13 (t2.val + 1) x := by
  have ht2 : t2.val < 4 := Nat.lt_of_lt_of_le t2.isLt k0_t3_abs.2.1
  unfold innerInv1
  unfold k0_t3_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (1 : Fin 2) b j' l)) ?hL).trans
    (trip_value (1 : Fin 4) (1 : Fin 2) t2.val ht2 X0 (selX X10 X11 X12 X13) f'
      (fun b j l h => (hIH b l j h).trans (slotSum1 d L X0 X10 X11 X12 X13 b l j)) b j' l hj)).trans
    (slotSum1 d L X0 X10 X11 X12 X13 b l j').symm
  case hL =>
    iterate 10 sl_unfold_run_names
    simp only [readAt_unit_closed]
    rfl

end Inner1

end Cert.Proof.KB

end
-- ==== Proof.BInner2.lean ====
import proofs.«210091_g81140522156176_cont_9to1_m_468_11_alg».proof.Proof.BInnerTrip
import proofs.«210091_g81140522156176_cont_9to1_m_468_11_alg».proof.Proof.Gen.Kernel.Skeleton
import Idealize.ShloMosaic.Lib.Tactic
import Idealize.ShloMosaic.Lib.Pipeline.Kit
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner2

variable (d : Dev nD) (L : grid0.Coords)
  (X0 : Buf (Elt F) (pS2.view.loc (thr d L))) (X10 : Buf (Elt F) (xS20.view.loc (thr d L))) (X11 : Buf (Elt F) (xS21.view.loc (thr d L)))
  (X12 : Buf (Elt F) (xS22.view.loc (thr d L))) (X13 : Buf (Elt F) (xS23.view.loc (thr d L)))

theorem slotSum2 (b : Fin 4) (l : Fin 1024) (j' : Fin 4) :
    FloatOps.addf ((if b.val = 0 then xS20.view.read (Elt F) X10 else if b.val = 1 then xS21.view.read (Elt F) X11 else if b.val = 2 then xS22.view.read (Elt F) X12 else xS23.view.read (Elt F) X13) (ValueIdx.ix2 j' l)) (pS2.view.read (Elt F) X0 (ValueIdx.ix2 j' l))
      = rowVal (2 : Fin 4) X0 (selX X10 X11 X12 X13) b j' l := by
  refine congrArg₂ FloatOps.addf ?_ (pslot_read (2 : Fin 4) _ X0 j' l)
  match b with
  | ⟨0, hb⟩ =>
    show View.read (Elt F) xS20.view X10 (ValueIdx.ix2 j' l) = X10 (ValueIdx.ix4 (2 : Fin 4) (⟨0, hb⟩ : Fin 4) j' l)
    exact xslot_read (2 : Fin 4) (⟨0, hb⟩ : Fin 4) _ X10 j' l
  | ⟨1, hb⟩ =>
    show View.read (Elt F) xS21.view X11 (ValueIdx.ix2 j' l) = X11 (ValueIdx.ix4 (2 : Fin 4) (⟨1, hb⟩ : Fin 4) j' l)
    exact xslot_read (2 : Fin 4) (⟨1, hb⟩ : Fin 4) _ X11 j' l
  | ⟨2, hb⟩ =>
    show View.read (Elt F) xS22.view X12 (ValueIdx.ix2 j' l) = X12 (ValueIdx.ix4 (2 : Fin 4) (⟨2, hb⟩ : Fin 4) j' l)
    exact xslot_read (2 : Fin 4) (⟨2, hb⟩ : Fin 4) _ X12 j' l
  | ⟨3, hb⟩ =>
    show View.read (Elt F) xS23.view X13 (ValueIdx.ix2 j' l) = X13 (ValueIdx.ix4 (2 : Fin 4) (⟨3, hb⟩ : Fin 4) j' l)
    exact xslot_read (2 : Fin 4) (⟨3, hb⟩ : Fin 4) _ X13 j' l

/-- Before row j: the five source blocks as they were, and rows below j of the destination block at activation plus table row. -/
def innerInv2 (j : ℕ) (_ : PUnit) : sProp 𝕄 :=
  iprop((pS2.view.loc (thr d L) ↦[pS2.view.set]{fullShare} X0) ∗ (xS20.view.loc (thr d L) ↦[xS20.view.set]{fullShare} X10) ∗ (xS21.view.loc (thr d L) ↦[xS21.view.set]{fullShare} X11)
    ∗ (xS22.view.loc (thr d L) ↦[xS22.view.set]{fullShare} X12) ∗ (xS23.view.loc (thr d L) ↦[xS23.view.set]{fullShare} X13)
    ∗ ∃ f', (sB.view.loc (thr d L) ↦[(((Finset.univ \ sS10.view.set) \ sS11.view.set) \ sS12.view.set) \ sS13.view.set]{fullShare} f')
      ∗ ⌜∀ (b : Fin 4) (l : Fin 1024) (j' : Fin 4), j'.val < j → f' (ValueIdx.ix4 (0 : Fin 2) b j' l)
          = FloatOps.addf ((if b.val = 0 then xS20.view.read (Elt F) X10 else if b.val = 1 then xS21.view.read (Elt F) X11 else if b.val = 2 then xS22.view.read (Elt F) X12 else xS23.view.read (Elt F) X13) (ValueIdx.ix2 j' l)) (pS2.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner2_region (v2 : BitVec 32) (t1 : Fin k0_t1_loop.trips) (v352 : BitVec 32)
    (t2 : Fin (Scf.trips k0_t4_loop.lb k0_t4_loop.ub k0_t4_loop.st)) (acc : PUnit) :
    innerInv2 d L X0 X10 X11 X12 X13 t2.val acc
      ⊢ wp frame (wpE (defs₀ (F := F)) 𝒱₀ (thr d L) none) Set.univ
          (k0_t4_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v352 t2 acc)
          fun x => innerInv2 d L X0 X10 X11 X12 X13 (t2.val + 1) x := by
  have ht2 : t2.val < 4 := Nat.lt_of_lt_of_le t2.isLt k0_t4_abs.2.1
  unfold innerInv2
  unfold k0_t4_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (0 : Fin 2) b j' l)) ?hL).trans
    (trip_value (2 : Fin 4) (0 : Fin 2) t2.val ht2 X0 (selX X10 X11 X12 X13) f'
      (fun b j l h => (hIH b l j h).trans (slotSum2 d L X0 X10 X11 X12 X13 b l j)) b j' l hj)).trans
    (slotSum2 d L X0 X10 X11 X12 X13 b l j').symm
  case hL =>
    iterate 10 sl_unfold_run_names
    simp only [readAt_unit_closed]
    rfl

end Inner2

end Cert.Proof.KB

end
-- ==== Proof.BInner3.lean ====
import proofs.«210091_g81140522156176_cont_9to1_m_468_11_alg».proof.Proof.BInnerTrip
import proofs.«210091_g81140522156176_cont_9to1_m_468_11_alg».proof.Proof.Gen.Kernel.Skeleton
import Idealize.ShloMosaic.Lib.Tactic
import Idealize.ShloMosaic.Lib.Pipeline.Kit
import Idealize.ShloMosaic.Lib.Batch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Inner3

variable (d : Dev nD) (L : grid0.Coords)
  (X0 : Buf (Elt F) (pS3.view.loc (thr d L))) (X10 : Buf (Elt F) (xS30.view.loc (thr d L))) (X11 : Buf (Elt F) (xS31.view.loc (thr d L)))
  (X12 : Buf (Elt F) (xS32.view.loc (thr d L))) (X13 : Buf (Elt F) (xS33.view.loc (thr d L)))

theorem slotSum3 (b : Fin 4) (l : Fin 1024) (j' : Fin 4) :
    FloatOps.addf ((if b.val = 0 then xS30.view.read (Elt F) X10 else if b.val = 1 then xS31.view.read (Elt F) X11 else if b.val = 2 then xS32.view.read (Elt F) X12 else xS33.view.read (Elt F) X13) (ValueIdx.ix2 j' l)) (pS3.view.read (Elt F) X0 (ValueIdx.ix2 j' l))
      = rowVal (3 : Fin 4) X0 (selX X10 X11 X12 X13) b j' l := by
  refine congrArg₂ FloatOps.addf ?_ (pslot_read (3 : Fin 4) _ X0 j' l)
  match b with
  | ⟨0, hb⟩ =>
    show View.read (Elt F) xS30.view X10 (ValueIdx.ix2 j' l) = X10 (ValueIdx.ix4 (3 : Fin 4) (⟨0, hb⟩ : Fin 4) j' l)
    exact xslot_read (3 : Fin 4) (⟨0, hb⟩ : Fin 4) _ X10 j' l
  | ⟨1, hb⟩ =>
    show View.read (Elt F) xS31.view X11 (ValueIdx.ix2 j' l) = X11 (ValueIdx.ix4 (3 : Fin 4) (⟨1, hb⟩ : Fin 4) j' l)
    exact xslot_read (3 : Fin 4) (⟨1, hb⟩ : Fin 4) _ X11 j' l
  | ⟨2, hb⟩ =>
    show View.read (Elt F) xS32.view X12 (ValueIdx.ix2 j' l) = X12 (ValueIdx.ix4 (3 : Fin 4) (⟨2, hb⟩ : Fin 4) j' l)
    exact xslot_read (3 : Fin 4) (⟨2, hb⟩ : Fin 4) _ X12 j' l
  | ⟨3, hb⟩ =>
    show View.read (Elt F) xS33.view X13 (ValueIdx.ix2 j' l) = X13 (ValueIdx.ix4 (3 : Fin 4) (⟨3, hb⟩ : Fin 4) j' l)
    exact xslot_read (3 : Fin 4) (⟨3, hb⟩ : Fin 4) _ X13 j' l

/-- Before row j: the five source blocks as they were, and rows below j of the destination block at activation plus table row. -/
def innerInv3 (j : ℕ) (_ : PUnit) : sProp 𝕄 :=
  iprop((pS3.view.loc (thr d L) ↦[pS3.view.set]{fullShare} X0) ∗ (xS30.view.loc (thr d L) ↦[xS30.view.set]{fullShare} X10) ∗ (xS31.view.loc (thr d L) ↦[xS31.view.set]{fullShare} X11)
    ∗ (xS32.view.loc (thr d L) ↦[xS32.view.set]{fullShare} X12) ∗ (xS33.view.loc (thr d L) ↦[xS33.view.set]{fullShare} X13)
    ∗ ∃ f', (sB.view.loc (thr d L) ↦[(((Finset.univ \ sS00.view.set) \ sS01.view.set) \ sS02.view.set) \ sS03.view.set]{fullShare} f')
      ∗ ⌜∀ (b : Fin 4) (l : Fin 1024) (j' : Fin 4), j'.val < j → f' (ValueIdx.ix4 (1 : Fin 2) b j' l)
          = FloatOps.addf ((if b.val = 0 then xS30.view.read (Elt F) X10 else if b.val = 1 then xS31.view.read (Elt F) X11 else if b.val = 2 then xS32.view.read (Elt F) X12 else xS33.view.read (Elt F) X13) (ValueIdx.ix2 j' l)) (pS3.view.read (Elt F) X0 (ValueIdx.ix2 j' l))⌝)

set_option sl_exec.closedPieces true in
set_option maxHeartbeats 8000000 in
set_option maxRecDepth 65536 in
/-- One row of the loop takes the invariant at j to the invariant at j + 1: the row's stores are the trip's value. -/
theorem inner3_region (v2 : BitVec 32) (t1 : Fin k0_t1_loop.trips) (v464 : BitVec 32)
    (t2 : Fin (Scf.trips k0_t5_loop.lb k0_t5_loop.ub k0_t5_loop.st)) (acc : PUnit) :
    innerInv3 d L X0 X10 X11 X12 X13 t2.val acc
      ⊢ wp frame (wpE (defs₀ (F := F)) 𝒱₀ (thr d L) none) Set.univ
          (k0_t5_body L xV (Memref.isWhole_whole _) pV (Memref.isWhole_whole _) oV (Memref.isWhole_whole _) pB (Memref.isWhole_whole _) xB (Memref.isWhole_whole _) sB (Memref.isWhole_whole _) cc0_scratch3 cc0_scratch4 cc0_scratch5 cc0_scratch6 cc0_scratch7 cc0_scratch8 v2 t1 v464 t2 acc)
          fun x => innerInv3 d L X0 X10 X11 X12 X13 (t2.val + 1) x := by
  have ht2 : t2.val < 4 := Nat.lt_of_lt_of_le t2.isLt k0_t5_abs.2.1
  unfold innerInv3
  unfold k0_t5_body
  iintro ⟨HP, HX0, HX1, HX2, HX3, %f', HS, %hIH⟩
  sl_exec_parts
  sl_step
  isplitl [HP]; · iexact HP
  isplitl [HX0]; · iexact HX0
  isplitl [HX1]; · iexact HX1
  isplitl [HX2]; · iexact HX2
  isplitl [HX3]; · iexact HX3
  iexists _
  isplitl [HS]; · iexact HS
  ipureintro
  intro b l j' hj
  refine ((congrArg (fun Lst => (sB : Memref sig .scVector .vmem S2x4x4x1024 .f32).view.writes (Elt F) f' Lst (ValueIdx.ix4 (1 : Fin 2) b j' l)) ?hL).trans
    (trip_value (3 : Fin 4) (1 : Fin 2) t2.val ht2 X0 (selX X10 X11 X12 X13) f'
      (fun b j l h => (hIH b l j h).trans (slotSum3 d L X0 X10 X11 X12 X13 b l j)) b j' l hj)).trans
    (slotSum3 d L X0 X10 X11 X12 X13 b l j').symm
  case hL =>
    iterate 10 sl_unfold_run_names
    simp only [readAt_unit_closed]
    rfl

end Inner3

end Cert.Proof.KB

end
-- ==== Proof.BTrip.lean ====
import proofs.«210091_g81140522156176_cont_9to1_m_468_11_alg».proof.Proof.BFam
import proofs.«210091_g81140522156176_cont_9to1_m_468_11_alg».proof.Proof.BSvb
import proofs.«210091_g81140522156176_cont_9to1_m_468_11_alg».proof.Proof.BInner
import proofs.«210091_g81140522156176_cont_9to1_m_468_11_alg».proof.Proof.BInner1
import proofs.«210091_g81140522156176_cont_9to1_m_468_11_alg».proof.Proof.BInner2
import proofs.«210091_g81140522156176_cont_9to1_m_468_11_alg».proof.Proof.BInner3

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem c1_all : ∀ k : Fin k0_t1_loop.trips, k0_cond1 k = 1#1 := by decide
theorem c3_of : ∀ k : Fin k0_t1_loop.trips, k.val < 7 → k0_cond3 k = 1#1 := by decide
theorem c5_of : ∀ k : Fin k0_t1_loop.trips, k.val < 7 → k0_cond5 k = 1#1 := by decide
theorem c6_of : ∀ k : Fin k0_t1_loop.trips, k.val < 7 → k0_cond6 k = 1#1 := by decide
theorem c2_of : ∀ k : Fin k0_t1_loop.trips, 1 ≤ k.val → k0_cond2 k = 1#1 := by decide
theorem c4_of : ∀ k : Fin k0_t1_loop.trips, 1 ≤ k.val → k0_cond4 k = 1#1 := by decide
theorem c2_not : ∀ k : Fin k0_t1_loop.trips, k.val = 0 → ¬ k0_cond2 k = 1#1 := by decide
theorem c4_not : ∀ k : Fin k0_t1_loop.trips, k.val = 0 → ¬ k0_cond4 k = 1#1 := by decide
theorem c3_not : ∀ k : Fin k0_t1_loop.trips, k.val = 7 → ¬ k0_cond3 k = 1#1 := by decide
theorem c5_not : ∀ k : Fin k0_t1_loop.trips, k.val = 7 → ¬ k0_cond5 k = 1#1 := by decide
theorem c6_not : ∀ k : Fin k0_t1_loop.trips, k.val = 7 → ¬ k0_cond6 k = 1#1 := by decide

abbrev dlv (d : Dev nD) (L : grid0.Coords) (dst : Memref sig .scVector .vmem S4x1024 .f32) (g : Buf (Elt F) (dst.view.loc (thr d L)))
    (src : Memref sig .scVector .hbm S4x1024 .f32) (fs : Buf (Elt F) (src.view.loc (thr d L))) (qs : PosShare TreeShare) : sProp 𝕄 :=
  iprop((dst.view.loc (thr d L) ↦[dst.view.set]{fullShare} dst.view.writes (Elt F) g [⟨Rect.whole S4x1024, ReadAs.same.apply (src.view.read (Elt F) fs)⟩])
    ∗ (src.view.loc (thr d L) ↦[src.view.set]{qs} fs))

def loadFlight (d : Dev nD) (L : grid0.Coords) (sem : DmaSem sig) (ps xs0 xs1 xs2 xs3 : Memref sig .scVector .vmem S4x1024 .f32)
    (P X0 X1 X2 X3 : Memref sig .scVector .hbm S4x1024 .f32) (q : PosShare TreeShare)
    (fp : Buf (Elt F) (P.view.loc (thr d L))) (fx0 : Buf (Elt F) (X0.view.loc (thr d L))) (fx1 : Buf (Elt F) (X1.view.loc (thr d L))) (fx2 : Buf (Elt F) (X2.view.loc (thr d L))) (fx3 : Buf (Elt F) (X3.view.loc (thr d L)))
    (gp : Buf (Elt F) (ps.view.loc (thr d L))) (g0 : Buf (Elt F) (xs0.view.loc (thr d L))) (g1 : Buf (Elt F) (xs1.view.loc (thr d L))) (g2 : Buf (Elt F) (xs2.view.loc (thr d L))) (g3 : Buf (Elt F) (xs3.view.loc (thr d L))) : sProp 𝕄 :=
  Transfers.Batched countersEmb (thr d L) (SemLoc.dma sem) default 131072 5
        [dlv d L ps gp P fp q, dlv d L xs0 g0 X0 fx0 q, dlv d L xs1 g1 X1 fx1 q, dlv d L xs2 g2 X2 fx2 q, dlv d L xs3 g3 X3 fx3 q] 0

def storeFlight0 (d : Dev nD) (L : grid0.Coords) (o0 o1 o2 o3 : Memref sig .scVector .hbm S4x1024 .f32)
    (g0 : Buf (Elt F) (o0.view.loc (thr d L))) (g1 : Buf (Elt F) (o1.view.loc (thr d L))) (g2 : Buf (Elt F) (o2.view.loc (thr d L))) (g3 : Buf (Elt F) (o3.view.loc (thr d L)))
    (fs : Buf (Elt F) (sB.view.loc (thr d L))) : sProp 𝕄 :=
  Transfers.Batched countersEmb (thr d L) (SemLoc.dma cc0_scratch7.sem) default 131072 4
    [iprop((o0.view.loc (thr d L) ↦[o0.view.set]{fullShare} o0.view.writes (Elt F) g0 [⟨Rect.whole S4x1024, ReadAs.same.apply (sS00.view.read (Elt F) fs)⟩]) ∗ (sS00.view.loc (thr d L) ↦[sS00.view.set]{fullShare} fs)),
     iprop((o1.view.loc (thr d L) ↦[o1.view.set]{fullShare} o1.view.writes (Elt F) g1 [⟨Rect.whole S4x1024, ReadAs.same.apply (sS01.view.read (Elt F) fs)⟩]) ∗ (sS01.view.loc (thr d L) ↦[sS01.view.set]{fullShare} fs)),
     iprop((o2.view.loc (thr d L) ↦[o2.view.set]{fullShare} o2.view.writes (Elt F) g2 [⟨Rect.whole S4x1024, ReadAs.same.apply (sS02.view.read (Elt F) fs)⟩]) ∗ (sS02.view.loc (thr d L) ↦[sS02.view.set]{fullShare} fs)),
     iprop((o3.view.loc (thr d L) ↦[o3.view.set]{fullShare} o3.view.writes (Elt F) g3 [⟨Rect.whole S4x1024, ReadAs.same.apply (sS03.view.read (Elt F) fs)⟩]) ∗ (sS03.view.loc (thr d L) ↦[sS03.view.set]{fullShare} fs))] 0

def storeFlight1 (d : Dev nD) (L : grid0.Coords) (o0 o1 o2 o3 : Memref sig .scVector .hbm S4x1024 .f32)
    (g0 : Buf (Elt F) (o0.view.loc (thr d L))) (g1 : Buf (Elt F) (o1.view.loc (thr d L))) (g2 : Buf (Elt F) (o2.view.loc (thr d L))) (g3 : Buf (Elt F) (o3.view.loc (thr d L)))
    (fs : Buf (Elt F) (sB.view.loc (thr d L))) : sProp 𝕄 :=
  Transfers.Batched countersEmb (thr d L) (SemLoc.dma cc0_scratch8.sem) default 131072 4
    [iprop((o0.view.loc (thr d L) ↦[o0.view.set]{fullShare} o0.view.writes (Elt F) g0 [⟨Rect.whole S4x1024, ReadAs.same.apply (sS10.view.read (Elt F) fs)⟩]) ∗ (sS10.view.loc (thr d L) ↦[sS10.view.set]{fullShare} fs)),
     iprop((o1.view.loc (thr d L) ↦[o1.view.set]{fullShare} o1.view.writes (Elt F) g1 [⟨Rect.whole S4x1024, ReadAs.same.apply (sS11.view.read (Elt F) fs)⟩]) ∗ (sS11.view.loc (thr d L) ↦[sS11.view.set]{fullShare} fs)),
     iprop((o2.view.loc (thr d L) ↦[o2.view.set]{fullShare} o2.view.writes (Elt F) g2 [⟨Rect.whole S4x1024, ReadAs.same.apply (sS12.view.read (Elt F) fs)⟩]) ∗ (sS12.view.loc (thr d L) ↦[sS12.view.set]{fullShare} fs)),
     iprop((o3.view.loc (thr d L) ↦[o3.view.set]{fullShare} o3.view.writes (Elt F) g3 [⟨Rect.whole S4x1024, ReadAs.same.apply (sS13.view.read (Elt F) fs)⟩]) ∗ (sS13.view.loc (thr d L) ↦[sS13.view.set]{fullShare} fs))] 0

set_option maxHeartbeats 16000000 in
set_option maxRecDepth 65536 in
theorem tripMid (d : Dev nD) (L : grid0.Coords) (q : PosShare TreeShare) (O : CellTallies nD τ sig (HIx 1)) (W : Waits sig (HIx 1)) (v2 : BitVec 32)
    (k : Fin k0_t1_loop.trips) (hk1 : 1 ≤ k.val) (hk6 : k.val < 7)
    (iP0 iX00 iX01 iX02 iX03 iP1 iX10 iX11 iX12 iX13 iP2 iX20 iX21 iX22 iX23 iO00 iO01 iO02 iO03 iO10 iO11 iO12 iO13 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L))) (go00 : Buf (Elt F) (iO00.view.loc (thr d L))) (go01 : Buf (Elt F) (iO01.view.loc (thr d L))) (go02 : Buf (Elt F) (iO02.view.loc (thr d L))) (go03 : Buf (Elt F) (iO03.view.loc (thr d L))) (go10 : Buf (Elt F) (iO10.view.loc (thr d L))) (go11 : Buf (Elt F) (iO11.view.loc (thr d L))) (go12 : Buf (Elt F) (iO12.view.loc (thr d L))) (go13 : Buf (Elt F) (iO13.view.loc (thr d L)))
    (fx : Buf (Elt F) (xLoc d)) (fp : Buf (Elt F) (pLoc d)) (fo : Buf (Elt F) (oLoc d))
    (fsa fsb : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    let h3 := c3_of k hk6
    let h5 := c5_of k hk6
    let h6 := c6_of k hk6
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ storeFlight0 (F := F) d L iO00 iO01 iO02 iO03 go00 go01 go02 go03 fsa
        ∗ storeFlight1 (F := F) d L iO10 iO11 iO12 iO13 go10 go11 go12 go13 fsb
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((pWinOf (k0_off600 L k) (k0_off600_inb L k h3)).view.loc (thr d L) ↦[(pWinOf (k0_off600 L k) (k0_off600_inb L k h3)).view.set]{q} fp)
        ∗ ((xWinOf (k0_off601 L k) (k0_off601_inb L k h3)).view.loc (thr d L) ↦[(xWinOf (k0_off601 L k) (k0_off601_inb L k h3)).view.set]{q} fx)
        ∗ ((xWinOf (k0_off602 L k) (k0_off602_inb L k h3)).view.loc (thr d L) ↦[(xWinOf (k0_off602 L k) (k0_off602_inb L k h3)).view.set]{q} fx)
        ∗ ((xWinOf (k0_off603 L k) (k0_off603_inb L k h3)).view.loc (thr d L) ↦[(xWinOf (k0_off603 L k) (k0_off603_inb L k h3)).view.set]{q} fx)
        ∗ ((xWinOf (k0_off604 L k) (k0_off604_inb L k h3)).view.loc (thr d L) ↦[(xWinOf (k0_off604 L k) (k0_off604_inb L k h3)).view.set]{q} fx)
        ∗ ((pWinOf (k0_off1185 L k) (k0_off1185_inb L k h5)).view.loc (thr d L) ↦[(pWinOf (k0_off1185 L k) (k0_off1185_inb L k h5)).view.set]{q} fp)
        ∗ ((xWinOf (k0_off1186 L k) (k0_off1186_inb L k h5)).view.loc (thr d L) ↦[(xWinOf (k0_off1186 L k) (k0_off1186_inb L k h5)).view.set]{q} fx)
        ∗ ((xWinOf (k0_off1187 L k) (k0_off1187_inb L k h5)).view.loc (thr d L) ↦[(xWinOf (k0_off1187 L k) (k0_off1187_inb L k h5)).view.set]{q} fx)
        ∗ ((xWinOf (k0_off1188 L k) (k0_off1188_inb L k h5)).view.loc (thr d L) ↦[(xWinOf (k0_off1188 L k) (k0_off1188_inb L k h5)).view.set]{q} fx)
        ∗ ((xWinOf (k0_off1189 L k) (k0_off1189_inb L k h5)).view.loc (thr d L) ↦[(xWinOf (k0_off1189 L k) (k0_off1189_inb L k h5)).view.set]{q} fx)
        ∗ ((pWinOf (k0_off1766 L k) (k0_off1766_inb L k h6)).view.loc (thr d L) ↦[(pWinOf (k0_off1766 L k) (k0_off1766_inb L k h6)).view.set]{q} fp)
        ∗ ((xWinOf (k0_off1767 L k) (k0_off1767_inb L k h6)).view.loc (thr d L) ↦[(xWinOf (k0_off1767 L k) (k0_off1767_inb L k h6)).view.set]{q} fx)
        ∗ ((xWinOf (k0_off1768 L k) (k0_off1768_inb L k h6)).view.loc (thr d L) ↦[(xWinOf (k0_off1768 L k) (k0_off1768_inb L k h6)).view.set]{q} fx)
        ∗ ((xWinOf (k0_off1769 L k) (k0_off1769_inb L k h6)).view.loc (thr d L) ↦[(xWinOf (k0_off1769 L k) (k0_off1769_inb L k h6)).view.set]{q} fx)
        ∗ ((xWinOf (k0_off1770 L k) (k0_off1770_inb L k h6)).view.loc (thr d L) ↦[(xWinOf (k0_off1770 L k) (k0_off1770_inb L k h6)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ gp g0 g1 g2 g3, loadFlight (F := F) d L cc0_scratch3.sem pS0 xS00 xS01 xS02 xS03 (pWinOf (k0_off600 L k) (k0_off600_inb L k h3)) (xWinOf (k0_off601 L k) (k0_off601_inb L k h3)) (xWinOf (k0_off602 L k) (k0_off602_inb L k h3)) (xWinOf (k0_off603 L k) (k0_off603_inb L k h3)) (xWinOf (k0_off604 L k) (k0_off604_inb L k h3)) q fp fx fx fx fx gp g0 g1 g2 g3)
            ∗ (∃ gp g0 g1 g2 g3, loadFlight (F := F) d L cc0_scratch4.sem pS1 xS10 xS11 xS12 xS13 (pWinOf (k0_off1185 L k) (k0_off1185_inb L k h5)) (xWinOf (k0_off1186 L k) (k0_off1186_inb L k h5)) (xWinOf (k0_off1187 L k) (k0_off1187_inb L k h5)) (xWinOf (k0_off1188 L k) (k0_off1188_inb L k h5)) (xWinOf (k0_off1189 L k) (k0_off1189_inb L k h5)) q fp fx fx fx fx gp g0 g1 g2 g3)
            ∗ (∃ gp g0 g1 g2 g3, loadFlight (F := F) d L cc0_scratch5.sem pS2 xS20 xS21 xS22 xS23 (pWinOf (k0_off1766 L k) (k0_off1766_inb L k h6)) (xWinOf (k0_off1767 L k) (k0_off1767_inb L k h6)) (xWinOf (k0_off1768 L k) (k0_off1768_inb L k h6)) (xWinOf (k0_off1769 L k) (k0_off1769_inb L k h6)) (xWinOf (k0_off1770 L k) (k0_off1770_inb L k h6)) q fp fx fx fx fx gp g0 g1 g2 g3)
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (iO00.view.loc (thr d L) ↦[iO00.view.set]{fullShare} lnd iO00 sS00 fsa) ∗ (iO01.view.loc (thr d L) ↦[iO01.view.set]{fullShare} lnd iO01 sS01 fsa) ∗ (iO02.view.loc (thr d L) ↦[iO02.view.set]{fullShare} lnd iO02 sS02 fsa) ∗ (iO03.view.loc (thr d L) ↦[iO03.view.set]{fullShare} lnd iO03 sS03 fsa)
            ∗ (iO10.view.loc (thr d L) ↦[iO10.view.set]{fullShare} lnd iO10 sS10 fsb) ∗ (iO11.view.loc (thr d L) ↦[iO11.view.set]{fullShare} lnd iO11 sS11 fsb) ∗ (iO12.view.loc (thr d L) ↦[iO12.view.set]{fullShare} lnd iO12 sS12 fsb) ∗ (iO13.view.loc (thr d L) ↦[iO13.view.set]{fullShare} lnd iO13 sS13 fsb)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1 h3 h5 h6
  have hk8 : k.val < 8 := Nat.lt_of_lt_of_le k.isLt k0_t1_abs.2.1
  have h2 := c2_of k hk1
  have h4 := c4_of k hk1
  unfold k0_t1_body loadFlight storeFlight0 storeFlight1 dlv pWinOf xWinOf oWinOf lnd
  iintro ⟨Hmw, HP3, HX30, HX31, HX32, HX33, HB0, HB1, HB2, HC0, HC1, HQ0, HY00, HY01, HY02, HY03, HQ1, HY10, HY11, HY12, HY13, HQ2, HY20, HY21, HY22, HY23, HQ3, HY30, HY31, HY32, HY33, HO00, HO01, HO02, HO03, HO10, HO11, HO12, HO13, HO20, HO21, HO22, HO23, HO30, HO31, HO32, HO33, Hs6, HO⟩
  sl_exec_parts
  ihave H2 : ((sB.view.loc (thr d L) ↦[(((Finset.univ \ sS10.view.set) \ sS11.view.set) \ sS12.view.set) \ sS13.view.set]{fullShare} _ : sProp 𝕄)) $$ [HC0_src0 HC0_src1 HC0_src2 HC0_src3]
  · rw [svb_half0 d (cV L) (jV L)]
    iframe
  sl_for (innerInv0 (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 H2]
  case region =>
    intro j acc
    exact inner0_region d L _ _ _ _ _ _ _ _ _ j acc
  · unfold innerInv0
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [H2]; · iexact H2
    ipureintro; intro b l j' hj; exact absurd hj (Nat.not_lt_zero _)
  iintro %_ HI
  unfold innerInv0
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_half0 (F := F) d (cV L) (jV L) fs0)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HC1_src0 HC1_src1 HC1_src2 HC1_src3]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HB0]; · iexists _, _, _, _, _; iexact HB0
  isplitl [HB1]; · iexists _, _, _, _, _; iexact HB1
  isplitl [HB2]; · iexists _, _, _, _, _; iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [HC0]
  · iexists _
    isplitl []
    · ipureintro; exact hv2
    · iexact HC0
  isplitl [HC1]
  · iexists _
    isplitl []
    · ipureintro; exact hv3
    · iexact HC1
  isplitl [HC0_dst0]; · iexact HC0_dst0
  isplitl [HC0_dst1]; · iexact HC0_dst1
  isplitl [HC0_dst2]; · iexact HC0_dst2
  isplitl [HC0_dst3]; · iexact HC0_dst3
  isplitl [HC1_dst0]; · iexact HC1_dst0
  isplitl [HC1_dst1]; · iexact HC1_dst1
  isplitl [HC1_dst2]; · iexact HC1_dst2
  isplitl [HC1_dst3]; · iexact HC1_dst3
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KB

end
-- ==== Proof.BInv.lean ====
import proofs.«210091_g81140522156176_cont_9to1_m_468_11_alg».proof.Proof.BTrip

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD) (L : grid0.Coords)

theorem row_lt (c : ℕ) (hc : c < 32) (j : Fin 4) : r0 L + 4 * c + j.val < 4096 := by
  have := r0_le L; have := j.isLt; omega

def staged (s : Fin 2) (c : ℕ) (hc : c < 32) (fs : Buf (Elt F) (sB.view.loc (thr d L))) : Prop :=
  ∀ (b : Fin 4) (l : Fin 1024) (j : Fin 4),
    fs (ValueIdx.ix4 s b j l) = mres m d (ValueIdx.ix3 b ⟨r0 L + 4 * c + j.val, row_lt L c hc j⟩ l)

def freeSlot0 : sProp 𝕄 :=
  iprop((∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
    ∗ (∃ g, xS02.view.loc (thr d L) ↦[xS02.view.set]{fullShare} g) ∗ (∃ g, xS03.view.loc (thr d L) ↦[xS03.view.set]{fullShare} g)
    ∗ semVal (thr d L, SemLoc.dma cc0_scratch3.sem) 0)

def freeSlot1 : sProp 𝕄 :=
  iprop((∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
    ∗ (∃ g, xS12.view.loc (thr d L) ↦[xS12.view.set]{fullShare} g) ∗ (∃ g, xS13.view.loc (thr d L) ↦[xS13.view.set]{fullShare} g)
    ∗ semVal (thr d L, SemLoc.dma cc0_scratch4.sem) 0)

def freeSlot2 : sProp 𝕄 :=
  iprop((∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
    ∗ (∃ g, xS22.view.loc (thr d L) ↦[xS22.view.set]{fullShare} g) ∗ (∃ g, xS23.view.loc (thr d L) ↦[xS23.view.set]{fullShare} g)
    ∗ semVal (thr d L, SemLoc.dma cc0_scratch5.sem) 0)

def freeSlot3 : sProp 𝕄 :=
  iprop((∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
    ∗ (∃ g, xS32.view.loc (thr d L) ↦[xS32.view.set]{fullShare} g) ∗ (∃ g, xS33.view.loc (thr d L) ↦[xS33.view.set]{fullShare} g)
    ∗ semVal (thr d L, SemLoc.dma cc0_scratch6.sem) 0)

def flightIn0 (c : ℕ) (hc : c < 32) : sProp 𝕄 :=
  iprop(∃ gp g0 g1 g2 g3, loadFlight (F := F) d L cc0_scratch3.sem pS0 xS00 xS01 xS02 xS03
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightIn1 (c : ℕ) (hc : c < 32) : sProp 𝕄 :=
  iprop(∃ gp g0 g1 g2 g3, loadFlight (F := F) d L cc0_scratch4.sem pS1 xS10 xS11 xS12 xS13
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightIn2 (c : ℕ) (hc : c < 32) : sProp 𝕄 :=
  iprop(∃ gp g0 g1 g2 g3, loadFlight (F := F) d L cc0_scratch5.sem pS2 xS20 xS21 xS22 xS23
    (PW L c hc) (XW L c 0 hc (by decide)) (XW L c 1 hc (by decide)) (XW L c 2 hc (by decide)) (XW L c 3 hc (by decide)) rsh
    (mp m d) (m (xLoc d)) (m (xLoc d)) (m (xLoc d)) (m (xLoc d)) gp g0 g1 g2 g3)

def flightOut0 (c : ℕ) (hc : c < 32) : sProp 𝕄 :=
  iprop(∃ fs, ⌜staged m d L 0 c hc fs⌝ ∗ storeFlight0 (F := F) d L (OW L c 0 hc (by decide)) (OW L c 1 hc (by decide)) (OW L c 2 hc (by decide)) (OW L c 3 hc (by decide))
    (m (oLoc d)) (m (oLoc d)) (m (oLoc d)) (m (oLoc d)) fs)

def flightOut1 (c : ℕ) (hc : c < 32) : sProp 𝕄 :=
  iprop(∃ fs, ⌜staged m d L 1 c hc fs⌝ ∗ storeFlight1 (F := F) d L (OW L c 0 hc (by decide)) (OW L c 1 hc (by decide)) (OW L c 2 hc (by decide)) (OW L c 3 hc (by decide))
    (m (oLoc d)) (m (oLoc d)) (m (oLoc d)) (m (oLoc d)) fs)

def loadPart (g : ℕ) : sProp 𝕄 :=
  if h : g < 8 then iprop(flightIn0 m d L (4 * g) (by omega) ∗ flightIn1 m d L (4 * g + 1) (by omega) ∗ flightIn2 m d L (4 * g + 2) (by omega) ∗ freeSlot3 d L)
  else iprop(freeSlot0 d L ∗ freeSlot1 d L ∗ freeSlot2 d L ∗ freeSlot3 d L)

def storePart (g : ℕ) : sProp 𝕄 :=
  if h : g = 0 then iprop(semVal (thr d L, SemLoc.dma cc0_scratch7.sem) 0 ∗ semVal (thr d L, SemLoc.dma cc0_scratch8.sem) 0 ∗ ∃ f, sB.view.loc (thr d L) ↦{fullShare} f)
  else if h8 : g ≤ 8 then iprop(flightOut0 m d L (4 * g - 2) (by omega) ∗ flightOut1 m d L (4 * g - 1) (by omega))
  else iprop(emp)

def Inv (O : CellTallies nD τ sig (HIx 1)) (W : Waits sig (HIx 1)) (g : ℕ) (_ : PUnit) : sProp 𝕄 :=
  iprop(Transfers.MayWaits (thr d L) (none : HIx 1) O
    ∗ (∃ W', ⌜∀ p ∈ W', p ∈ W ∨ p.2 = none⌝ ∗ owes (thr d L) O W')
    ∗ loadPart m d L g ∗ srcFrom d L (mp m d) (m (xLoc d)) (4 * g + 3)
    ∗ storePart m d L g ∗ outFrom d L (m (oLoc d)) (4 * g) ∗ outBelow d L (mres m d) (4 * g - 2))

end Cert.Proof.KB

end
-- ==== Proof.BGlue.lean ====
import proofs.«210091_g81140522156176_cont_9to1_m_468_11_alg».proof.Proof.BInv

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

theorem win_row_lt (L : grid0.Coords) (c : ℕ) (hc : c < 32) (j : Fin 4) : r0 L + 4 * c + j.val < 4096 := by
  have := r0_le L; have := j.isLt; omega

theorem XW_read (L : grid0.Coords) (c b : ℕ) (hc : c < 32) (hb : b < 4) (X : S4x4096x1024.Idx → F .f32) (j : Fin 4) (l : Fin 1024) :
    (XW L c b hc hb).view.read (Elt F) X (ix2 j l) = X (ix3 (⟨b, hb⟩ : Fin 4) (⟨r0 L + 4 * c + j.val, win_row_lt L c hc j⟩ : Fin 4096) l) := by
  show (((xV : Memref sig .scVector .hbm S4x4096x1024 .f32).slice (Rect.unit (s := S4x4096x1024) ![b, r0 L + 4 * c, 0] S1x4x1024.size (XW_inb L c b hc hb)) (fun _ => rfl)).squeeze S4x1024
      squeezes_S1x4x1024_S4x1024).view.read (Elt F) X (ix2 j l) = _
  rw [Memref.read_squeeze_slice (Val := Elt F) (xV : Memref sig .scVector .hbm S4x4096x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show b + 1 * 0 = b; omega
    | ⟨1, _⟩ => show r0 L + 4 * c + 1 * j.val = r0 L + 4 * c + j.val; omega
    | ⟨2, _⟩ => show 0 + 1 * l.val = l.val; omega
theorem OW_read (L : grid0.Coords) (c b : ℕ) (hc : c < 32) (hb : b < 4) (X : S4x4096x1024.Idx → F .f32) (j : Fin 4) (l : Fin 1024) :
    (OW L c b hc hb).view.read (Elt F) X (ix2 j l) = X (ix3 (⟨b, hb⟩ : Fin 4) (⟨r0 L + 4 * c + j.val, win_row_lt L c hc j⟩ : Fin 4096) l) := by
  show (((oV : Memref sig .scVector .hbm S4x4096x1024 .f32).slice (Rect.unit (s := S4x4096x1024) ![b, r0 L + 4 * c, 0] S1x4x1024.size (XW_inb L c b hc hb)) (fun _ => rfl)).squeeze S4x1024
      squeezes_S1x4x1024_S4x1024).view.read (Elt F) X (ix2 j l) = _
  rw [Memref.read_squeeze_slice (Val := Elt F) (oV : Memref sig .scVector .hbm S4x4096x1024 .f32) _ (fun _ => rfl) squeezes_S1x4x1024_S4x1024
    squeezes_S1x4x1024_S4x1024.numel_eq X]
  refine (shapeCast_apply _ _ (ix2 j l) (ix3 (0 : Fin 1) j l) ?_).trans ?_
  · rw [Shape.rowMajor_val_three, Shape.rowMajor_val_two]
    show ((0 : Nat) * 4 + j.val) * 1024 + l.val = j.val * 1024 + l.val
    omega
  · show X _ = X _
    refine congrArg X (funext fun a => Fin.ext ?_)
    match a with
    | ⟨0, _⟩ => show b + 1 * 0 = b; omega
    | ⟨1, _⟩ => show r0 L + 4 * c + 1 * j.val = r0 L + 4 * c + j.val; omega
    | ⟨2, _⟩ => show 0 + 1 * l.val = l.val; omega

theorem PW_read (L : grid0.Coords) (c : ℕ) (hc : c < 32) (X : S4096x1024.Idx → F .f32) (j : Fin 4) (l : Fin 1024) :
    (PW L c hc).view.read (Elt F) X (ix2 j l) = X (ix2 (⟨r0 L + 4 * c + j.val, win_row_lt L c hc j⟩ : Fin 4096) l) := by
  rw [View.read_apply]
  refine (cast_eq _ _).trans ?_
  refine congrArg X (funext fun a => Fin.ext ?_)
  match a with
  | ⟨0, _⟩ => show r0 L + 4 * c + 1 * j.val = r0 L + 4 * c + j.val; omega
  | ⟨1, _⟩ => show 0 + 1 * l.val = l.val; omega

theorem sslot_read (mb : Fin 2 × Fin 4) (inb : ∀ a, (![mb.1.val, mb.2.val, 0, 0] : Fin 4 → Nat) a + S1x1x4x1024.size a ≤ S2x4x4x1024.size a)
    (X : S2x4x4x1024.Idx → F .f32) (j : Fin 4) (l : Fin 1024) :
    (((sB : Memref sig .scVector .vmem S2x4x4x1024 .f32).slice (Rect.unit (s := S2x4x4x1024) ![mb.1.val, mb.2.val, 0, 0] S1x1x4x1024.size inb) (fun _ => rfl)).squeeze S4x1024
        squeezes_S1x1x4x1024_S4x1024).view.read (Elt F) X (ix2 j l)
      = X (ix4 mb.1 mb.2 j l) := by
  rw [Memref.read_squeeze_slice (Val := Elt F) (sB : Memref sig .scVector .vmem S2x4x4x1024 .f32) _ (fun _ => rfl) squeezes_S1x1x4x1024_S4x1024
    squeezes_S1x1x4x1024_S4x1024.numel_eq X]
  refine (shapeCast_apply _ _ (ix2 j l) (ix4 (0 : Fin 1) (0 : Fin 1) j l) ?_).trans ?_
  · rw [Shape.rowMajor_val_four, Shape.rowMajor_val_two]
    show (((0 : Nat) * 1 + 0) * 4 + j.val) * 1024 + l.val = j.val * 1024 + l.val
    omega
  · show X _ = X _
    refine congrArg X (funext fun a => Fin.ext ?_)
    match a with
    | ⟨0, _⟩ => show mb.1.val + 1 * 0 = mb.1.val; omega
    | ⟨1, _⟩ => show mb.2.val + 1 * 0 = mb.2.val; omega
    | ⟨2, _⟩ => show 0 + 1 * j.val = j.val; omega
    | ⟨3, _⟩ => show 0 + 1 * l.val = l.val; omega

theorem off_pro_p (L : grid0.Coords) (j : Fin 3) : k0_off1 L (BitVec.ofNat 32 (4 * j.val)) = ![r0 L + 4 * j.val, 0] := k0_off1_eq L j
theorem off_pro_x0 (L : grid0.Coords) (j : Fin 3) : k0_off2 L (BitVec.ofNat 32 (4 * j.val)) = ![0, r0 L + 4 * j.val, 0] := k0_off2_eq L j
theorem off_pro_x1 (L : grid0.Coords) (j : Fin 3) : k0_off3 L (BitVec.ofNat 32 (4 * j.val)) = ![1, r0 L + 4 * j.val, 0] := k0_off3_eq L j
theorem off_pro_x2 (L : grid0.Coords) (j : Fin 3) : k0_off4 L (BitVec.ofNat 32 (4 * j.val)) = ![2, r0 L + 4 * j.val, 0] := k0_off4_eq L j
theorem off_pro_x3 (L : grid0.Coords) (j : Fin 3) : k0_off5 L (BitVec.ofNat 32 (4 * j.val)) = ![3, r0 L + 4 * j.val, 0] := k0_off5_eq L j
theorem off_s0_p (L : grid0.Coords) (k : Fin k0_t1_loop.trips) : k0_off11 L k = ![r0 L + 4 * (4 * k.val + 3), 0] :=
  (k0_off11_eq L k).trans (vec2_congr (by rw [r0_def]; omega))
theorem off_s0_x0 (L : grid0.Coords) (k : Fin k0_t1_loop.trips) : k0_off12 L k = ![0, r0 L + 4 * (4 * k.val + 3), 0] :=
  (k0_off12_eq L k).trans (vec3_congr 0 (by rw [r0_def]; omega))
theorem off_s0_x1 (L : grid0.Coords) (k : Fin k0_t1_loop.trips) : k0_off13 L k = ![1, r0 L + 4 * (4 * k.val + 3), 0] :=
  (k0_off13_eq L k).trans (vec3_congr 1 (by rw [r0_def]; omega))
theorem off_s0_x2 (L : grid0.Coords) (k : Fin k0_t1_loop.trips) : k0_off14 L k = ![2, r0 L + 4 * (4 * k.val + 3), 0] :=
  (k0_off14_eq L k).trans (vec3_congr 2 (by rw [r0_def]; omega))
theorem off_s0_x3 (L : grid0.Coords) (k : Fin k0_t1_loop.trips) : k0_off15 L k = ![3, r0 L + 4 * (4 * k.val + 3), 0] :=
  (k0_off15_eq L k).trans (vec3_congr 3 (by rw [r0_def]; omega))
theorem off_s1_p (L : grid0.Coords) (k : Fin k0_t1_loop.trips) : k0_off600 L k = ![r0 L + 4 * (4 * k.val + 4), 0] :=
  (k0_off600_eq L k).trans (vec2_congr (by rw [r0_def]; omega))
theorem off_s1_x0 (L : grid0.Coords) (k : Fin k0_t1_loop.trips) : k0_off601 L k = ![0, r0 L + 4 * (4 * k.val + 4), 0] :=
  (k0_off601_eq L k).trans (vec3_congr 0 (by rw [r0_def]; omega))
theorem off_s1_x1 (L : grid0.Coords) (k : Fin k0_t1_loop.trips) : k0_off602 L k = ![1, r0 L + 4 * (4 * k.val + 4), 0] :=
  (k0_off602_eq L k).trans (vec3_congr 1 (by rw [r0_def]; omega))
theorem off_s1_x2 (L : grid0.Coords) (k : Fin k0_t1_loop.trips) : k0_off603 L k = ![2, r0 L + 4 * (4 * k.val + 4), 0] :=
  (k0_off603_eq L k).trans (vec3_congr 2 (by rw [r0_def]; omega))
theorem off_s1_x3 (L : grid0.Coords) (k : Fin k0_t1_loop.trips) : k0_off604 L k = ![3, r0 L + 4 * (4 * k.val + 4), 0] :=
  (k0_off604_eq L k).trans (vec3_congr 3 (by rw [r0_def]; omega))
theorem off_s2_p (L : grid0.Coords) (k : Fin k0_t1_loop.trips) : k0_off1185 L k = ![r0 L + 4 * (4 * k.val + 5), 0] :=
  (k0_off1185_eq L k).trans (vec2_congr (by rw [r0_def]; omega))
theorem off_s2_x0 (L : grid0.Coords) (k : Fin k0_t1_loop.trips) : k0_off1186 L k = ![0, r0 L + 4 * (4 * k.val + 5), 0] :=
  (k0_off1186_eq L k).trans (vec3_congr 0 (by rw [r0_def]; omega))
theorem off_s2_x1 (L : grid0.Coords) (k : Fin k0_t1_loop.trips) : k0_off1187 L k = ![1, r0 L + 4 * (4 * k.val + 5), 0] :=
  (k0_off1187_eq L k).trans (vec3_congr 1 (by rw [r0_def]; omega))
theorem off_s2_x2 (L : grid0.Coords) (k : Fin k0_t1_loop.trips) : k0_off1188 L k = ![2, r0 L + 4 * (4 * k.val + 5), 0] :=
  (k0_off1188_eq L k).trans (vec3_congr 2 (by rw [r0_def]; omega))
theorem off_s2_x3 (L : grid0.Coords) (k : Fin k0_t1_loop.trips) : k0_off1189 L k = ![3, r0 L + 4 * (4 * k.val + 5), 0] :=
  (k0_off1189_eq L k).trans (vec3_congr 3 (by rw [r0_def]; omega))
theorem off_s3_p (L : grid0.Coords) (k : Fin k0_t1_loop.trips) : k0_off1766 L k = ![r0 L + 4 * (4 * k.val + 6), 0] :=
  (k0_off1766_eq L k).trans (vec2_congr (by rw [r0_def]; omega))
theorem off_s3_x0 (L : grid0.Coords) (k : Fin k0_t1_loop.trips) : k0_off1767 L k = ![0, r0 L + 4 * (4 * k.val + 6), 0] :=
  (k0_off1767_eq L k).trans (vec3_congr 0 (by rw [r0_def]; omega))
theorem off_s3_x1 (L : grid0.Coords) (k : Fin k0_t1_loop.trips) : k0_off1768 L k = ![1, r0 L + 4 * (4 * k.val + 6), 0] :=
  (k0_off1768_eq L k).trans (vec3_congr 1 (by rw [r0_def]; omega))
theorem off_s3_x2 (L : grid0.Coords) (k : Fin k0_t1_loop.trips) : k0_off1769 L k = ![2, r0 L + 4 * (4 * k.val + 6), 0] :=
  (k0_off1769_eq L k).trans (vec3_congr 2 (by rw [r0_def]; omega))
theorem off_s3_x3 (L : grid0.Coords) (k : Fin k0_t1_loop.trips) : k0_off1770 L k = ![3, r0 L + 4 * (4 * k.val + 6), 0] :=
  (k0_off1770_eq L k).trans (vec3_congr 3 (by rw [r0_def]; omega))
theorem off_st0 (L : grid0.Coords) (k : Fin k0_t1_loop.trips) (s : Fin 4) : k0_off596 L k (BitVec.ofNat 32 s.val) = ![0, r0 L + 4 * (4 * k.val + s.val), 0] :=
  (k0_off596_eq L k s).trans (vec3_congr 0 (by rw [r0_def]; omega))
theorem off_st1 (L : grid0.Coords) (k : Fin k0_t1_loop.trips) (s : Fin 4) : k0_off597 L k (BitVec.ofNat 32 s.val) = ![1, r0 L + 4 * (4 * k.val + s.val), 0] :=
  (k0_off597_eq L k s).trans (vec3_congr 1 (by rw [r0_def]; omega))
theorem off_st2 (L : grid0.Coords) (k : Fin k0_t1_loop.trips) (s : Fin 4) : k0_off598 L k (BitVec.ofNat 32 s.val) = ![2, r0 L + 4 * (4 * k.val + s.val), 0] :=
  (k0_off598_eq L k s).trans (vec3_congr 2 (by rw [r0_def]; omega))
theorem off_st3 (L : grid0.Coords) (k : Fin k0_t1_loop.trips) (s : Fin 4) : k0_off599 L k (BitVec.ofNat 32 s.val) = ![3, r0 L + 4 * (4 * k.val + s.val), 0] :=
  (k0_off599_eq L k s).trans (vec3_congr 3 (by rw [r0_def]; omega))

section Congr
variable (d : Dev nD) (L : grid0.Coords)

theorem pWin_pts {o o' : Fin 2 → Nat} (e : o = o') (h : ∀ a, o a + S4x1024.size a ≤ S4096x1024.size a) (h' : ∀ a, o' a + S4x1024.size a ≤ S4096x1024.size a)
    (q : PosShare TreeShare) (f : Buf (Elt F) (pLoc d)) :
    (((pWinOf o h).view.loc (thr d L) ↦[(pWinOf o h).view.set]{q} f) : sProp 𝕄) = ((pWinOf o' h').view.loc (thr d L) ↦[(pWinOf o' h').view.set]{q} f) := by subst e; rfl
theorem xWin_pts {o o' : Fin 3 → Nat} (e : o = o') (h : ∀ a, o a + S1x4x1024.size a ≤ S4x4096x1024.size a) (h' : ∀ a, o' a + S1x4x1024.size a ≤ S4x4096x1024.size a)
    (q : PosShare TreeShare) (f : Buf (Elt F) (xLoc d)) :
    (((xWinOf o h).view.loc (thr d L) ↦[(xWinOf o h).view.set]{q} f) : sProp 𝕄) = ((xWinOf o' h').view.loc (thr d L) ↦[(xWinOf o' h').view.set]{q} f) := by subst e; rfl
theorem oWin_pts {o o' : Fin 3 → Nat} (e : o = o') (h : ∀ a, o a + S1x4x1024.size a ≤ S4x4096x1024.size a) (h' : ∀ a, o' a + S1x4x1024.size a ≤ S4x4096x1024.size a)
    (q : PosShare TreeShare) (f : Buf (Elt F) (oLoc d)) :
    (((oWinOf o h).view.loc (thr d L) ↦[(oWinOf o h).view.set]{q} f) : sProp 𝕄) = ((oWinOf o' h').view.loc (thr d L) ↦[(oWinOf o' h').view.set]{q} f) := by subst e; rfl

theorem loadFlight_congr (sem : DmaSem sig) (ps xs0 xs1 xs2 xs3 : Memref sig .scVector .vmem S4x1024 .f32)
    {op op' : Fin 2 → Nat} {o0 o0' o1 o1' o2 o2' o3 o3' : Fin 3 → Nat} (ep : op = op') (e0 : o0 = o0') (e1 : o1 = o1') (e2 : o2 = o2') (e3 : o3 = o3')
    (hp : ∀ a, op a + S4x1024.size a ≤ S4096x1024.size a) (hp' : ∀ a, op' a + S4x1024.size a ≤ S4096x1024.size a)
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (q : PosShare TreeShare) (fp : Buf (Elt F) (pLoc d)) (fx0 fx1 fx2 fx3 : Buf (Elt F) (xLoc d))
    (gp : Buf (Elt F) (ps.view.loc (thr d L))) (g0 : Buf (Elt F) (xs0.view.loc (thr d L))) (g1 : Buf (Elt F) (xs1.view.loc (thr d L)))
    (g2 : Buf (Elt F) (xs2.view.loc (thr d L))) (g3 : Buf (Elt F) (xs3.view.loc (thr d L))) :
    loadFlight (F := F) d L sem ps xs0 xs1 xs2 xs3 (pWinOf op hp) (xWinOf o0 h0) (xWinOf o1 h1) (xWinOf o2 h2) (xWinOf o3 h3) q fp fx0 fx1 fx2 fx3 gp g0 g1 g2 g3
      = loadFlight (F := F) d L sem ps xs0 xs1 xs2 xs3 (pWinOf op' hp') (xWinOf o0' h0') (xWinOf o1' h1') (xWinOf o2' h2') (xWinOf o3' h3') q fp fx0 fx1 fx2 fx3 gp g0 g1 g2 g3 := by
  subst ep e0 e1 e2 e3; rfl

theorem storeFlight0_congr {o0 o0' o1 o1' o2 o2' o3 o3' : Fin 3 → Nat} (e0 : o0 = o0') (e1 : o1 = o1') (e2 : o2 = o2') (e3 : o3 = o3')
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (g0 g1 g2 g3 : Buf (Elt F) (oLoc d)) (fs : Buf (Elt F) (sB.view.loc (thr d L))) :
    storeFlight0 (F := F) d L (oWinOf o0 h0) (oWinOf o1 h1) (oWinOf o2 h2) (oWinOf o3 h3) g0 g1 g2 g3 fs
      = storeFlight0 (F := F) d L (oWinOf o0' h0') (oWinOf o1' h1') (oWinOf o2' h2') (oWinOf o3' h3') g0 g1 g2 g3 fs := by
  subst e0 e1 e2 e3; rfl
theorem storeFlight1_congr {o0 o0' o1 o1' o2 o2' o3 o3' : Fin 3 → Nat} (e0 : o0 = o0') (e1 : o1 = o1') (e2 : o2 = o2') (e3 : o3 = o3')
    (h0 : ∀ a, o0 a + S1x4x1024.size a ≤ S4x4096x1024.size a) (h0' : ∀ a, o0' a + S1x4x1024.size a ≤ S4x4096x1024.size a)
    (h1 : ∀ a, o1 a + S1x4x1024.size a ≤ S4x4096x1024.size a) (h1' : ∀ a, o1' a + S1x4x1024.size a ≤ S4x4096x1024.size a)
    (h2 : ∀ a, o2 a + S1x4x1024.size a ≤ S4x4096x1024.size a) (h2' : ∀ a, o2' a + S1x4x1024.size a ≤ S4x4096x1024.size a)
    (h3 : ∀ a, o3 a + S1x4x1024.size a ≤ S4x4096x1024.size a) (h3' : ∀ a, o3' a + S1x4x1024.size a ≤ S4x4096x1024.size a)
    (g0 g1 g2 g3 : Buf (Elt F) (oLoc d)) (fs : Buf (Elt F) (sB.view.loc (thr d L))) :
    storeFlight1 (F := F) d L (oWinOf o0 h0) (oWinOf o1 h1) (oWinOf o2 h2) (oWinOf o3 h3) g0 g1 g2 g3 fs
      = storeFlight1 (F := F) d L (oWinOf o0' h0') (oWinOf o1' h1') (oWinOf o2' h2') (oWinOf o3' h3') g0 g1 g2 g3 fs := by
  subst e0 e1 e2 e3; rfl

theorem ex_congr {α : Type} {Φ Ψ : α → sProp 𝕄} (h : ∀ a, Φ a = Ψ a) : (iprop(∃ a, Φ a) : sProp 𝕄) = iprop(∃ a, Ψ a) := by
  have e : Φ = Ψ := funext h
  rw [e]
end Congr

section Pro
variable (d : Dev nD) (L : grid0.Coords)

theorem srcChunk_pro (fp : Buf (Elt F) (pLoc d)) (fx : Buf (Elt F) (xLoc d)) (j : Fin 3) :
    srcChunk d L fp fx j.val (by have := j.isLt; omega)
      = iprop(((pWinOf (k0_off1 L (BitVec.ofNat 32 (4 * j.val))) (k0_off1_inb L j)).view.loc (thr d L) ↦[(pWinOf (k0_off1 L (BitVec.ofNat 32 (4 * j.val))) (k0_off1_inb L j)).view.set]{rsh} fp)
        ∗ ((xWinOf (k0_off2 L (BitVec.ofNat 32 (4 * j.val))) (k0_off2_inb L j)).view.loc (thr d L) ↦[(xWinOf (k0_off2 L (BitVec.ofNat 32 (4 * j.val))) (k0_off2_inb L j)).view.set]{rsh} fx)
        ∗ ((xWinOf (k0_off3 L (BitVec.ofNat 32 (4 * j.val))) (k0_off3_inb L j)).view.loc (thr d L) ↦[(xWinOf (k0_off3 L (BitVec.ofNat 32 (4 * j.val))) (k0_off3_inb L j)).view.set]{rsh} fx)
        ∗ ((xWinOf (k0_off4 L (BitVec.ofNat 32 (4 * j.val))) (k0_off4_inb L j)).view.loc (thr d L) ↦[(xWinOf (k0_off4 L (BitVec.ofNat 32 (4 * j.val))) (k0_off4_inb L j)).view.set]{rsh} fx)
        ∗ ((xWinOf (k0_off5 L (BitVec.ofNat 32 (4 * j.val))) (k0_off5_inb L j)).view.loc (thr d L) ↦[(xWinOf (k0_off5 L (BitVec.ofNat 32 (4 * j.val))) (k0_off5_inb L j)).view.set]{rsh} fx)) := by
  unfold srcChunk
  exact sep_congr' (pWin_pts d L (off_pro_p L j) _ _ rsh fp).symm (sep_congr' (xWin_pts d L (off_pro_x0 L j) _ _ rsh fx).symm
    (sep_congr' (xWin_pts d L (off_pro_x1 L j) _ _ rsh fx).symm (sep_congr' (xWin_pts d L (off_pro_x2 L j) _ _ rsh fx).symm
      (xWin_pts d L (off_pro_x3 L j) _ _ rsh fx).symm)))

theorem srcChunk_pro0 (fp : Buf (Elt F) (pLoc d)) (fx : Buf (Elt F) (xLoc d)) :
    srcChunk d L fp fx 0 (by decide)
      = iprop(((pWinOf (k0_off1 L 0#32) (k0_off1_inb L 0)).view.loc (thr d L) ↦[(pWinOf (k0_off1 L 0#32) (k0_off1_inb L 0)).view.set]{rsh} fp)
        ∗ ((xWinOf (k0_off2 L 0#32) (k0_off2_inb L 0)).view.loc (thr d L) ↦[(xWinOf (k0_off2 L 0#32) (k0_off2_inb L 0)).view.set]{rsh} fx)
        ∗ ((xWinOf (k0_off3 L 0#32) (k0_off3_inb L 0)).view.loc (thr d L) ↦[(xWinOf (k0_off3 L 0#32) (k0_off3_inb L 0)).view.set]{rsh} fx)
        ∗ ((xWinOf (k0_off4 L 0#32) (k0_off4_inb L 0)).view.loc (thr d L) ↦[(xWinOf (k0_off4 L 0#32) (k0_off4_inb L 0)).view.set]{rsh} fx)
        ∗ ((xWinOf (k0_off5 L 0#32) (k0_off5_inb L 0)).view.loc (thr d L) ↦[(xWinOf (k0_off5 L 0#32) (k0_off5_inb L 0)).view.set]{rsh} fx)) :=
  srcChunk_pro d L fp fx 0

theorem srcChunk_pro1 (fp : Buf (Elt F) (pLoc d)) (fx : Buf (Elt F) (xLoc d)) :
    srcChunk d L fp fx 1 (by decide)
      = iprop(((pWinOf (k0_off1 L 4#32) (k0_off1_inb L 1)).view.loc (thr d L) ↦[(pWinOf (k0_off1 L 4#32) (k0_off1_inb L 1)).view.set]{rsh} fp)
        ∗ ((xWinOf (k0_off2 L 4#32) (k0_off2_inb L 1)).view.loc (thr d L) ↦[(xWinOf (k0_off2 L 4#32) (k0_off2_inb L 1)).view.set]{rsh} fx)
        ∗ ((xWinOf (k0_off3 L 4#32) (k0_off3_inb L 1)).view.loc (thr d L) ↦[(xWinOf (k0_off3 L 4#32) (k0_off3_inb L 1)).view.set]{rsh} fx)
        ∗ ((xWinOf (k0_off4 L 4#32) (k0_off4_inb L 1)).view.loc (thr d L) ↦[(xWinOf (k0_off4 L 4#32) (k0_off4_inb L 1)).view.set]{rsh} fx)
        ∗ ((xWinOf (k0_off5 L 4#32) (k0_off5_inb L 1)).view.loc (thr d L) ↦[(xWinOf (k0_off5 L 4#32) (k0_off5_inb L 1)).view.set]{rsh} fx)) :=
  srcChunk_pro d L fp fx 1

theorem srcChunk_pro2 (fp : Buf (Elt F) (pLoc d)) (fx : Buf (Elt F) (xLoc d)) :
    srcChunk d L fp fx 2 (by decide)
      = iprop(((pWinOf (k0_off1 L 8#32) (k0_off1_inb L 2)).view.loc (thr d L) ↦[(pWinOf (k0_off1 L 8#32) (k0_off1_inb L 2)).view.set]{rsh} fp)
        ∗ ((xWinOf (k0_off2 L 8#32) (k0_off2_inb L 2)).view.loc (thr d L) ↦[(xWinOf (k0_off2 L 8#32) (k0_off2_inb L 2)).view.set]{rsh} fx)
        ∗ ((xWinOf (k0_off3 L 8#32) (k0_off3_inb L 2)).view.loc (thr d L) ↦[(xWinOf (k0_off3 L 8#32) (k0_off3_inb L 2)).view.set]{rsh} fx)
        ∗ ((xWinOf (k0_off4 L 8#32) (k0_off4_inb L 2)).view.loc (thr d L) ↦[(xWinOf (k0_off4 L 8#32) (k0_off4_inb L 2)).view.set]{rsh} fx)
        ∗ ((xWinOf (k0_off5 L 8#32) (k0_off5_inb L 2)).view.loc (thr d L) ↦[(xWinOf (k0_off5 L 8#32) (k0_off5_inb L 2)).view.set]{rsh} fx)) :=
  srcChunk_pro d L fp fx 2

end Pro

theorem flightIn_pro0 (m : (ℓ : Loc nD τ sig) → Buf (Elt F) ℓ) (d : Dev nD) (L : grid0.Coords) :
    (iprop(∃ gp g0 g1 g2 g3, loadFlight (F := F) d L cc0_scratch3.sem pS0 xS00 xS01 xS02 xS03
        (pWinOf (k0_off1 L 0#32) (k0_off1_inb L 0)) (xWinOf (k0_off2 L 0#32) (k0_off2_inb L 0)) (xWinOf (k0_off3 L 0#32) (k0_off3_inb L 0)) (xWinOf (k0_off4 L 0#32) (k0_off4_inb L 0)) (xWinOf (k0_off5 L 0#32) (k0_off5_inb L 0)) rsh
        (mp m d) (m (xLoc d)) (m (xLoc d)) (m (xLoc d)) (m (xLoc d)) gp g0 g1 g2 g3) : sProp 𝕄)
      = flightIn0 m d L 0 (by decide) := by
  unfold flightIn0
  exact ex_congr fun gp => ex_congr fun g0 => ex_congr fun g1 => ex_congr fun g2 => ex_congr fun g3 =>
    loadFlight_congr d L _ _ _ _ _ _ (off_pro_p L 0) (off_pro_x0 L 0) (off_pro_x1 L 0) (off_pro_x2 L 0) (off_pro_x3 L 0)
      _ _ _ _ _ _ _ _ _ _ rsh _ _ _ _ _ gp g0 g1 g2 g3

theorem flightIn_pro1 (m : (ℓ : Loc nD τ sig) → Buf (Elt F) ℓ) (d : Dev nD) (L : grid0.Coords) :
    (iprop(∃ gp g0 g1 g2 g3, loadFlight (F := F) d L cc0_scratch4.sem pS1 xS10 xS11 xS12 xS13
        (pWinOf (k0_off1 L 4#32) (k0_off1_inb L 1)) (xWinOf (k0_off2 L 4#32) (k0_off2_inb L 1)) (xWinOf (k0_off3 L 4#32) (k0_off3_inb L 1)) (xWinOf (k0_off4 L 4#32) (k0_off4_inb L 1)) (xWinOf (k0_off5 L 4#32) (k0_off5_inb L 1)) rsh
        (mp m d) (m (xLoc d)) (m (xLoc d)) (m (xLoc d)) (m (xLoc d)) gp g0 g1 g2 g3) : sProp 𝕄)
      = flightIn1 m d L 1 (by decide) := by
  unfold flightIn1
  exact ex_congr fun gp => ex_congr fun g0 => ex_congr fun g1 => ex_congr fun g2 => ex_congr fun g3 =>
    loadFlight_congr d L _ _ _ _ _ _ (off_pro_p L 1) (off_pro_x0 L 1) (off_pro_x1 L 1) (off_pro_x2 L 1) (off_pro_x3 L 1)
      _ _ _ _ _ _ _ _ _ _ rsh _ _ _ _ _ gp g0 g1 g2 g3

theorem flightIn_pro2 (m : (ℓ : Loc nD τ sig) → Buf (Elt F) ℓ) (d : Dev nD) (L : grid0.Coords) :
    (iprop(∃ gp g0 g1 g2 g3, loadFlight (F := F) d L cc0_scratch5.sem pS2 xS20 xS21 xS22 xS23
        (pWinOf (k0_off1 L 8#32) (k0_off1_inb L 2)) (xWinOf (k0_off2 L 8#32) (k0_off2_inb L 2)) (xWinOf (k0_off3 L 8#32) (k0_off3_inb L 2)) (xWinOf (k0_off4 L 8#32) (k0_off4_inb L 2)) (xWinOf (k0_off5 L 8#32) (k0_off5_inb L 2)) rsh
        (mp m d) (m (xLoc d)) (m (xLoc d)) (m (xLoc d)) (m (xLoc d)) gp g0 g1 g2 g3) : sProp 𝕄)
      = flightIn2 m d L 2 (by decide) := by
  unfold flightIn2
  exact ex_congr fun gp => ex_congr fun g0 => ex_congr fun g1 => ex_congr fun g2 => ex_congr fun g3 =>
    loadFlight_congr d L _ _ _ _ _ _ (off_pro_p L 2) (off_pro_x0 L 2) (off_pro_x1 L 2) (off_pro_x2 L 2) (off_pro_x3 L 2)
      _ _ _ _ _ _ _ _ _ _ rsh _ _ _ _ _ gp g0 g1 g2 g3

theorem outChunk_st (d : Dev nD) (L : grid0.Coords) (fo : Buf (Elt F) (oLoc d)) (k : Fin k0_t1_loop.trips) (s : Fin 4) :
    outChunk d L fo (4 * k.val + s.val) (by have := trip_lt k; have := s.isLt; omega)
      = iprop(((oWinOf (k0_off596 L k (BitVec.ofNat 32 s.val)) (k0_off596_inb L k s)).view.loc (thr d L) ↦[(oWinOf (k0_off596 L k (BitVec.ofNat 32 s.val)) (k0_off596_inb L k s)).view.set]{fullShare} fo)
        ∗ ((oWinOf (k0_off597 L k (BitVec.ofNat 32 s.val)) (k0_off597_inb L k s)).view.loc (thr d L) ↦[(oWinOf (k0_off597 L k (BitVec.ofNat 32 s.val)) (k0_off597_inb L k s)).view.set]{fullShare} fo)
        ∗ ((oWinOf (k0_off598 L k (BitVec.ofNat 32 s.val)) (k0_off598_inb L k s)).view.loc (thr d L) ↦[(oWinOf (k0_off598 L k (BitVec.ofNat 32 s.val)) (k0_off598_inb L k s)).view.set]{fullShare} fo)
        ∗ ((oWinOf (k0_off599 L k (BitVec.ofNat 32 s.val)) (k0_off599_inb L k s)).view.loc (thr d L) ↦[(oWinOf (k0_off599 L k (BitVec.ofNat 32 s.val)) (k0_off599_inb L k s)).view.set]{fullShare} fo)) := by
  unfold outChunk
  exact sep_congr' (oWin_pts d L (off_st0 L k s) _ _ fullShare fo).symm (sep_congr' (oWin_pts d L (off_st1 L k s) _ _ fullShare fo).symm
    (sep_congr' (oWin_pts d L (off_st2 L k s) _ _ fullShare fo).symm (oWin_pts d L (off_st3 L k s) _ _ fullShare fo).symm))

theorem agree_of_read {κ : Kind} {sp : Space} {s : Shape} {e : EltTy} (v : View sig κ sp s e) {Val : EltTy → Type} (f1 f2 : v.ty.Contents Val)
    (h : ∀ y, v.read Val f1 y = v.read Val f2 y) : ∀ i ∈ v.set, f1 i = f2 i := by
  intro i hi
  obtain ⟨y, -, rfl⟩ := Finset.mem_map.mp hi
  have hy := h y
  rw [View.read_apply, View.read_apply] at hy
  exact (cast_inj _).mp hy

section Values
variable (m : (ℓ : Loc nD τ sig) → Buf (Elt F) ℓ) (d : Dev nD) (L : grid0.Coords)

theorem mres_apply (b : Fin 4) (r : Fin 4096) (l : Fin 1024) :
    mres m d (ix3 b r l) = FloatOps.addf (m (xLoc d) (ix3 b r l)) (mp m d (ix2 r l)) := rfl

theorem staged_of_value (s : Fin 2) (c : ℕ) (hc : c < 32) (fs : Buf (Elt F) (sB.view.loc (thr d L)))
    (xs0 xs1 xs2 xs3 ps : Memref sig .scVector .vmem S4x1024 .f32)
    (g0 : xs0.view.ty.Contents (Elt F)) (g1 : xs1.view.ty.Contents (Elt F)) (g2 : xs2.view.ty.Contents (Elt F)) (g3 : xs3.view.ty.Contents (Elt F))
    (gp : ps.view.ty.Contents (Elt F))
    (w0 w1 w2 w3 wp : S4x1024.Idx → Elt F .f32)
    (r0x : ∀ (j : Fin 4) (l : Fin 1024), w0 (ix2 j l) = m (xLoc d) (ix3 (0 : Fin 4) (⟨r0 L + 4 * c + j.val, win_row_lt L c hc j⟩ : Fin 4096) l))
    (r1x : ∀ (j : Fin 4) (l : Fin 1024), w1 (ix2 j l) = m (xLoc d) (ix3 (1 : Fin 4) (⟨r0 L + 4 * c + j.val, win_row_lt L c hc j⟩ : Fin 4096) l))
    (r2x : ∀ (j : Fin 4) (l : Fin 1024), w2 (ix2 j l) = m (xLoc d) (ix3 (2 : Fin 4) (⟨r0 L + 4 * c + j.val, win_row_lt L c hc j⟩ : Fin 4096) l))
    (r3x : ∀ (j : Fin 4) (l : Fin 1024), w3 (ix2 j l) = m (xLoc d) (ix3 (3 : Fin 4) (⟨r0 L + 4 * c + j.val, win_row_lt L c hc j⟩ : Fin 4096) l))
    (rp : ∀ (j : Fin 4) (l : Fin 1024), wp (ix2 j l) = mp m d (ix2 (⟨r0 L + 4 * c + j.val, win_row_lt L c hc j⟩ : Fin 4096) l))
    (hv : ∀ (b : Fin 4) (l : Fin 1024) (j' : Fin 4), fs (ix4 s b j' l)
      = FloatOps.addf ((if b.val = 0 then xs0.view.read (Elt F) (xs0.view.writes (Elt F) g0 [⟨Rect.whole S4x1024, ReadAs.same.apply w0⟩])
          else if b.val = 1 then xs1.view.read (Elt F) (xs1.view.writes (Elt F) g1 [⟨Rect.whole S4x1024, ReadAs.same.apply w1⟩])
          else if b.val = 2 then xs2.view.read (Elt F) (xs2.view.writes (Elt F) g2 [⟨Rect.whole S4x1024, ReadAs.same.apply w2⟩])
          else xs3.view.read (Elt F) (xs3.view.writes (Elt F) g3 [⟨Rect.whole S4x1024, ReadAs.same.apply w3⟩])) (ix2 j' l))
        (ps.view.read (Elt F) (ps.view.writes (Elt F) gp [⟨Rect.whole S4x1024, ReadAs.same.apply wp⟩]) (ix2 j' l))) :
    staged m d L s c hc fs := by
  intro b l j
  rw [hv b l j, mres_apply, landed_apply, rp]
  congr 1
  match b with
  | ⟨0, _⟩ => exact (landed_apply _ _ _ _).trans (r0x j l)
  | ⟨1, _⟩ => exact (landed_apply _ _ _ _).trans (r1x j l)
  | ⟨2, _⟩ => exact (landed_apply _ _ _ _).trans (r2x j l)
  | ⟨3, _⟩ => exact (landed_apply _ _ _ _).trans (r3x j l)

theorem sS00_read (fs : S2x4x4x1024.Idx → F .f32) (j : Fin 4) (l : Fin 1024) :
    sS00.view.read (Elt F) fs (ix2 j l) = fs (ix4 (0 : Fin 2) (0 : Fin 4) j l) := sslot_read (0, 0) _ fs j l
theorem sS01_read (fs : S2x4x4x1024.Idx → F .f32) (j : Fin 4) (l : Fin 1024) :
    sS01.view.read (Elt F) fs (ix2 j l) = fs (ix4 (0 : Fin 2) (1 : Fin 4) j l) := sslot_read (0, 1) _ fs j l
theorem sS02_read (fs : S2x4x4x1024.Idx → F .f32) (j : Fin 4) (l : Fin 1024) :
    sS02.view.read (Elt F) fs (ix2 j l) = fs (ix4 (0 : Fin 2) (2 : Fin 4) j l) := sslot_read (0, 2) _ fs j l
theorem sS03_read (fs : S2x4x4x1024.Idx → F .f32) (j : Fin 4) (l : Fin 1024) :
    sS03.view.read (Elt F) fs (ix2 j l) = fs (ix4 (0 : Fin 2) (3 : Fin 4) j l) := sslot_read (0, 3) _ fs j l
theorem sS10_read (fs : S2x4x4x1024.Idx → F .f32) (j : Fin 4) (l : Fin 1024) :
    sS10.view.read (Elt F) fs (ix2 j l) = fs (ix4 (1 : Fin 2) (0 : Fin 4) j l) := sslot_read (1, 0) _ fs j l
theorem sS11_read (fs : S2x4x4x1024.Idx → F .f32) (j : Fin 4) (l : Fin 1024) :
    sS11.view.read (Elt F) fs (ix2 j l) = fs (ix4 (1 : Fin 2) (1 : Fin 4) j l) := sslot_read (1, 1) _ fs j l
theorem sS12_read (fs : S2x4x4x1024.Idx → F .f32) (j : Fin 4) (l : Fin 1024) :
    sS12.view.read (Elt F) fs (ix2 j l) = fs (ix4 (1 : Fin 2) (2 : Fin 4) j l) := sslot_read (1, 2) _ fs j l
theorem sS13_read (fs : S2x4x4x1024.Idx → F .f32) (j : Fin 4) (l : Fin 1024) :
    sS13.view.read (Elt F) fs (ix2 j l) = fs (ix4 (1 : Fin 2) (3 : Fin 4) j l) := sslot_read (1, 3) _ fs j l

theorem out_done_one (s : Fin 2) (c : ℕ) (hc : c < 32) (fs : Buf (Elt F) (sB.view.loc (thr d L))) (h : staged m d L s c hc fs) (b : ℕ) (hb : b < 4)
    (w : S4x1024.Idx → Elt F .f32) (hw : ∀ (j : Fin 4) (l : Fin 1024), w (ix2 j l) = fs (ix4 s (⟨b, hb⟩ : Fin 4) j l))
    (g : (OW L c b hc hb).view.ty.Contents (Elt F)) :
    ((OW L c b hc hb).view.loc (thr d L) ↦[(OW L c b hc hb).view.set]{fullShare}
        (OW L c b hc hb).view.writes (Elt F) g [⟨Rect.whole S4x1024, ReadAs.same.apply w⟩] : sProp 𝕄)
      = ((OW L c b hc hb).view.loc (thr d L) ↦[(OW L c b hc hb).view.set]{fullShare} mres m d) := by
  refine pointsTo_congr (agree_of_read (OW L c b hc hb).view _ _ fun y => ?_)
  have ey : y = ix2 (⟨(y 0).val, (y 0).isLt⟩ : Fin 4) (⟨(y 1).val, (y 1).isLt⟩ : Fin 1024) := by
    funext a
    match a with
    | ⟨0, _⟩ => rfl
    | ⟨1, _⟩ => rfl
  rw [landed_apply, ey, hw, OW_read]
  exact h ⟨b, hb⟩ _ _

theorem out_done0 (c : ℕ) (hc : c < 32) (fs : Buf (Elt F) (sB.view.loc (thr d L))) (h : staged m d L 0 c hc fs) :
    iprop(((OW L c 0 hc (by decide)).view.loc (thr d L) ↦[(OW L c 0 hc (by decide)).view.set]{fullShare} (OW L c 0 hc (by decide)).view.writes (Elt F) (OW L c 0 hc (by decide)).view.junk [⟨Rect.whole S4x1024, ReadAs.same.apply (sS00.view.read (Elt F) fs)⟩])
        ∗ ((OW L c 1 hc (by decide)).view.loc (thr d L) ↦[(OW L c 1 hc (by decide)).view.set]{fullShare} (OW L c 1 hc (by decide)).view.writes (Elt F) (OW L c 1 hc (by decide)).view.junk [⟨Rect.whole S4x1024, ReadAs.same.apply (sS01.view.read (Elt F) fs)⟩])
        ∗ ((OW L c 2 hc (by decide)).view.loc (thr d L) ↦[(OW L c 2 hc (by decide)).view.set]{fullShare} (OW L c 2 hc (by decide)).view.writes (Elt F) (OW L c 2 hc (by decide)).view.junk [⟨Rect.whole S4x1024, ReadAs.same.apply (sS02.view.read (Elt F) fs)⟩])
        ∗ ((OW L c 3 hc (by decide)).view.loc (thr d L) ↦[(OW L c 3 hc (by decide)).view.set]{fullShare} (OW L c 3 hc (by decide)).view.writes (Elt F) (OW L c 3 hc (by decide)).view.junk [⟨Rect.whole S4x1024, ReadAs.same.apply (sS03.view.read (Elt F) fs)⟩]))
      ⊢ outChunk d L (mres m d) c hc := by
  unfold outChunk
  have e0 := out_done_one m d L 0 c hc fs h 0 (by decide) _ (sS00_read fs) (OW L c 0 hc (by decide)).view.junk
  have e1 := out_done_one m d L 0 c hc fs h 1 (by decide) _ (sS01_read fs) (OW L c 1 hc (by decide)).view.junk
  have e2 := out_done_one m d L 0 c hc fs h 2 (by decide) _ (sS02_read fs) (OW L c 2 hc (by decide)).view.junk
  have e3 := out_done_one m d L 0 c hc fs h 3 (by decide) _ (sS03_read fs) (OW L c 3 hc (by decide)).view.junk
  exact Entails.of_eq (sep_congr' e0 (sep_congr' e1 (sep_congr' e2 e3)))

theorem out_done1 (c : ℕ) (hc : c < 32) (fs : Buf (Elt F) (sB.view.loc (thr d L))) (h : staged m d L 1 c hc fs) :
    iprop(((OW L c 0 hc (by decide)).view.loc (thr d L) ↦[(OW L c 0 hc (by decide)).view.set]{fullShare} (OW L c 0 hc (by decide)).view.writes (Elt F) (OW L c 0 hc (by decide)).view.junk [⟨Rect.whole S4x1024, ReadAs.same.apply (sS10.view.read (Elt F) fs)⟩])
        ∗ ((OW L c 1 hc (by decide)).view.loc (thr d L) ↦[(OW L c 1 hc (by decide)).view.set]{fullShare} (OW L c 1 hc (by decide)).view.writes (Elt F) (OW L c 1 hc (by decide)).view.junk [⟨Rect.whole S4x1024, ReadAs.same.apply (sS11.view.read (Elt F) fs)⟩])
        ∗ ((OW L c 2 hc (by decide)).view.loc (thr d L) ↦[(OW L c 2 hc (by decide)).view.set]{fullShare} (OW L c 2 hc (by decide)).view.writes (Elt F) (OW L c 2 hc (by decide)).view.junk [⟨Rect.whole S4x1024, ReadAs.same.apply (sS12.view.read (Elt F) fs)⟩])
        ∗ ((OW L c 3 hc (by decide)).view.loc (thr d L) ↦[(OW L c 3 hc (by decide)).view.set]{fullShare} (OW L c 3 hc (by decide)).view.writes (Elt F) (OW L c 3 hc (by decide)).view.junk [⟨Rect.whole S4x1024, ReadAs.same.apply (sS13.view.read (Elt F) fs)⟩]))
      ⊢ outChunk d L (mres m d) c hc := by
  unfold outChunk
  have e0 := out_done_one m d L 1 c hc fs h 0 (by decide) _ (sS10_read fs) (OW L c 0 hc (by decide)).view.junk
  have e1 := out_done_one m d L 1 c hc fs h 1 (by decide) _ (sS11_read fs) (OW L c 1 hc (by decide)).view.junk
  have e2 := out_done_one m d L 1 c hc fs h 2 (by decide) _ (sS12_read fs) (OW L c 2 hc (by decide)).view.junk
  have e3 := out_done_one m d L 1 c hc fs h 3 (by decide) _ (sS13_read fs) (OW L c 3 hc (by decide)).view.junk
  exact Entails.of_eq (sep_congr' e0 (sep_congr' e1 (sep_congr' e2 e3)))
end Values

end Cert.Proof.KB

end
-- ==== Proof.BRegion.lean ====
import proofs.«210091_g81140522156176_cont_9to1_m_468_11_alg».proof.Proof.BGlue

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Mid
variable (m : (ℓ : Loc nD τ sig) → Buf (Elt F) ℓ) (d : Dev nD) (L : grid0.Coords)

theorem loadPart_lt (g : ℕ) (h : g < 8) :
    loadPart m d L g = iprop(flightIn0 m d L (4 * g) (by omega) ∗ flightIn1 m d L (4 * g + 1) (by omega) ∗ flightIn2 m d L (4 * g + 2) (by omega) ∗ freeSlot3 d L) := by
  unfold loadPart; rw [dif_pos h]
theorem storePart_mid (g : ℕ) (h0 : g ≠ 0) (h8 : g ≤ 8) :
    storePart m d L g = iprop(flightOut0 m d L (4 * g - 2) (by omega) ∗ flightOut1 m d L (4 * g - 1) (by omega)) := by
  unfold storePart; rw [dif_neg h0, dif_pos h8]

theorem outChunk_congr (fo : Buf (Elt F) (oLoc d)) {c c' : ℕ} (e : c = c') (hc : c < 32) (hc' : c' < 32) :
    outChunk d L fo c hc = outChunk d L fo c' hc' := by subst e; rfl

theorem srcChunk_s0 (fp : Buf (Elt F) (pLoc d)) (fx : Buf (Elt F) (xLoc d)) (k : Fin k0_t1_loop.trips) (hk6 : k.val < 7) (c : ℕ) (e : c = 4 * k.val + 3) (hc : c < 32) :
    srcChunk d L fp fx c hc
      = iprop(((pWinOf (k0_off11 L k) (k0_off11_inb L k (c1_all k))).view.loc (thr d L) ↦[(pWinOf (k0_off11 L k) (k0_off11_inb L k (c1_all k))).view.set]{rsh} fp)
        ∗ ((xWinOf (k0_off12 L k) (k0_off12_inb L k (c1_all k))).view.loc (thr d L) ↦[(xWinOf (k0_off12 L k) (k0_off12_inb L k (c1_all k))).view.set]{rsh} fx)
        ∗ ((xWinOf (k0_off13 L k) (k0_off13_inb L k (c1_all k))).view.loc (thr d L) ↦[(xWinOf (k0_off13 L k) (k0_off13_inb L k (c1_all k))).view.set]{rsh} fx)
        ∗ ((xWinOf (k0_off14 L k) (k0_off14_inb L k (c1_all k))).view.loc (thr d L) ↦[(xWinOf (k0_off14 L k) (k0_off14_inb L k (c1_all k))).view.set]{rsh} fx)
        ∗ ((xWinOf (k0_off15 L k) (k0_off15_inb L k (c1_all k))).view.loc (thr d L) ↦[(xWinOf (k0_off15 L k) (k0_off15_inb L k (c1_all k))).view.set]{rsh} fx)) := by
  subst e
  unfold srcChunk
  exact sep_congr' (pWin_pts d L (off_s0_p L k) _ _ rsh fp).symm (sep_congr' (xWin_pts d L (off_s0_x0 L k) _ _ rsh fx).symm
    (sep_congr' (xWin_pts d L (off_s0_x1 L k) _ _ rsh fx).symm (sep_congr' (xWin_pts d L (off_s0_x2 L k) _ _ rsh fx).symm
      (xWin_pts d L (off_s0_x3 L k) _ _ rsh fx).symm)))

theorem srcChunk_s1 (fp : Buf (Elt F) (pLoc d)) (fx : Buf (Elt F) (xLoc d)) (k : Fin k0_t1_loop.trips) (hk6 : k.val < 7) (c : ℕ) (e : c = 4 * k.val + 4) (hc : c < 32) :
    srcChunk d L fp fx c hc
      = iprop(((pWinOf (k0_off600 L k) (k0_off600_inb L k (c3_of k hk6))).view.loc (thr d L) ↦[(pWinOf (k0_off600 L k) (k0_off600_inb L k (c3_of k hk6))).view.set]{rsh} fp)
        ∗ ((xWinOf (k0_off601 L k) (k0_off601_inb L k (c3_of k hk6))).view.loc (thr d L) ↦[(xWinOf (k0_off601 L k) (k0_off601_inb L k (c3_of k hk6))).view.set]{rsh} fx)
        ∗ ((xWinOf (k0_off602 L k) (k0_off602_inb L k (c3_of k hk6))).view.loc (thr d L) ↦[(xWinOf (k0_off602 L k) (k0_off602_inb L k (c3_of k hk6))).view.set]{rsh} fx)
        ∗ ((xWinOf (k0_off603 L k) (k0_off603_inb L k (c3_of k hk6))).view.loc (thr d L) ↦[(xWinOf (k0_off603 L k) (k0_off603_inb L k (c3_of k hk6))).view.set]{rsh} fx)
        ∗ ((xWinOf (k0_off604 L k) (k0_off604_inb L k (c3_of k hk6))).view.loc (thr d L) ↦[(xWinOf (k0_off604 L k) (k0_off604_inb L k (c3_of k hk6))).view.set]{rsh} fx)) := by
  subst e
  unfold srcChunk
  exact sep_congr' (pWin_pts d L (off_s1_p L k) _ _ rsh fp).symm (sep_congr' (xWin_pts d L (off_s1_x0 L k) _ _ rsh fx).symm
    (sep_congr' (xWin_pts d L (off_s1_x1 L k) _ _ rsh fx).symm (sep_congr' (xWin_pts d L (off_s1_x2 L k) _ _ rsh fx).symm
      (xWin_pts d L (off_s1_x3 L k) _ _ rsh fx).symm)))

theorem srcChunk_s2 (fp : Buf (Elt F) (pLoc d)) (fx : Buf (Elt F) (xLoc d)) (k : Fin k0_t1_loop.trips) (hk6 : k.val < 7) (c : ℕ) (e : c = 4 * k.val + 5) (hc : c < 32) :
    srcChunk d L fp fx c hc
      = iprop(((pWinOf (k0_off1185 L k) (k0_off1185_inb L k (c5_of k hk6))).view.loc (thr d L) ↦[(pWinOf (k0_off1185 L k) (k0_off1185_inb L k (c5_of k hk6))).view.set]{rsh} fp)
        ∗ ((xWinOf (k0_off1186 L k) (k0_off1186_inb L k (c5_of k hk6))).view.loc (thr d L) ↦[(xWinOf (k0_off1186 L k) (k0_off1186_inb L k (c5_of k hk6))).view.set]{rsh} fx)
        ∗ ((xWinOf (k0_off1187 L k) (k0_off1187_inb L k (c5_of k hk6))).view.loc (thr d L) ↦[(xWinOf (k0_off1187 L k) (k0_off1187_inb L k (c5_of k hk6))).view.set]{rsh} fx)
        ∗ ((xWinOf (k0_off1188 L k) (k0_off1188_inb L k (c5_of k hk6))).view.loc (thr d L) ↦[(xWinOf (k0_off1188 L k) (k0_off1188_inb L k (c5_of k hk6))).view.set]{rsh} fx)
        ∗ ((xWinOf (k0_off1189 L k) (k0_off1189_inb L k (c5_of k hk6))).view.loc (thr d L) ↦[(xWinOf (k0_off1189 L k) (k0_off1189_inb L k (c5_of k hk6))).view.set]{rsh} fx)) := by
  subst e
  unfold srcChunk
  exact sep_congr' (pWin_pts d L (off_s2_p L k) _ _ rsh fp).symm (sep_congr' (xWin_pts d L (off_s2_x0 L k) _ _ rsh fx).symm
    (sep_congr' (xWin_pts d L (off_s2_x1 L k) _ _ rsh fx).symm (sep_congr' (xWin_pts d L (off_s2_x2 L k) _ _ rsh fx).symm
      (xWin_pts d L (off_s2_x3 L k) _ _ rsh fx).symm)))

theorem srcChunk_s3 (fp : Buf (Elt F) (pLoc d)) (fx : Buf (Elt F) (xLoc d)) (k : Fin k0_t1_loop.trips) (hk6 : k.val < 7) (c : ℕ) (e : c = 4 * k.val + 6) (hc : c < 32) :
    srcChunk d L fp fx c hc
      = iprop(((pWinOf (k0_off1766 L k) (k0_off1766_inb L k (c6_of k hk6))).view.loc (thr d L) ↦[(pWinOf (k0_off1766 L k) (k0_off1766_inb L k (c6_of k hk6))).view.set]{rsh} fp)
        ∗ ((xWinOf (k0_off1767 L k) (k0_off1767_inb L k (c6_of k hk6))).view.loc (thr d L) ↦[(xWinOf (k0_off1767 L k) (k0_off1767_inb L k (c6_of k hk6))).view.set]{rsh} fx)
        ∗ ((xWinOf (k0_off1768 L k) (k0_off1768_inb L k (c6_of k hk6))).view.loc (thr d L) ↦[(xWinOf (k0_off1768 L k) (k0_off1768_inb L k (c6_of k hk6))).view.set]{rsh} fx)
        ∗ ((xWinOf (k0_off1769 L k) (k0_off1769_inb L k (c6_of k hk6))).view.loc (thr d L) ↦[(xWinOf (k0_off1769 L k) (k0_off1769_inb L k (c6_of k hk6))).view.set]{rsh} fx)
        ∗ ((xWinOf (k0_off1770 L k) (k0_off1770_inb L k (c6_of k hk6))).view.loc (thr d L) ↦[(xWinOf (k0_off1770 L k) (k0_off1770_inb L k (c6_of k hk6))).view.set]{rsh} fx)) := by
  subst e
  unfold srcChunk
  exact sep_congr' (pWin_pts d L (off_s3_p L k) _ _ rsh fp).symm (sep_congr' (xWin_pts d L (off_s3_x0 L k) _ _ rsh fx).symm
    (sep_congr' (xWin_pts d L (off_s3_x1 L k) _ _ rsh fx).symm (sep_congr' (xWin_pts d L (off_s3_x2 L k) _ _ rsh fx).symm
      (xWin_pts d L (off_s3_x3 L k) _ _ rsh fx).symm)))

theorem outChunk_s0 (fo : Buf (Elt F) (oLoc d)) (k : Fin k0_t1_loop.trips) (c : ℕ) (e : c = 4 * k.val + 0) (hc : c < 32) :
    outChunk d L fo c hc
      = iprop(((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)) := by
  subst e
  exact (outChunk_congr d L fo (by simp) _ _).trans (outChunk_st d L fo k 0)

theorem outChunk_s1 (fo : Buf (Elt F) (oLoc d)) (k : Fin k0_t1_loop.trips) (c : ℕ) (e : c = 4 * k.val + 1) (hc : c < 32) :
    outChunk d L fo c hc
      = iprop(((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)) := by
  subst e
  exact (outChunk_congr d L fo (by simp) _ _).trans (outChunk_st d L fo k 1)

theorem outChunk_s2 (fo : Buf (Elt F) (oLoc d)) (k : Fin k0_t1_loop.trips) (c : ℕ) (e : c = 4 * k.val + 2) (hc : c < 32) :
    outChunk d L fo c hc
      = iprop(((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)) := by
  subst e
  exact (outChunk_congr d L fo (by simp) _ _).trans (outChunk_st d L fo k 2)

theorem outChunk_s3 (fo : Buf (Elt F) (oLoc d)) (k : Fin k0_t1_loop.trips) (c : ℕ) (e : c = 4 * k.val + 3) (hc : c < 32) :
    outChunk d L fo c hc
      = iprop(((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)) := by
  subst e
  exact (outChunk_congr d L fo (by simp) _ _).trans (outChunk_st d L fo k 3)
end Mid

section Mid2
variable (m : (ℓ : Loc nD τ sig) → Buf (Elt F) ℓ) (d : Dev nD) (L : grid0.Coords)

theorem flightIn_new0 (k : Fin k0_t1_loop.trips) (hk6 : k.val < 7) (hc : 4 * (k.val + 1) < 32) :
    (iprop(∃ gp g0 g1 g2 g3, loadFlight (F := F) d L cc0_scratch3.sem pS0 xS00 xS01 xS02 xS03
        (pWinOf (k0_off600 L k) (k0_off600_inb L k (c3_of k hk6))) (xWinOf (k0_off601 L k) (k0_off601_inb L k (c3_of k hk6))) (xWinOf (k0_off602 L k) (k0_off602_inb L k (c3_of k hk6))) (xWinOf (k0_off603 L k) (k0_off603_inb L k (c3_of k hk6))) (xWinOf (k0_off604 L k) (k0_off604_inb L k (c3_of k hk6))) rsh
        (mp m d) (m (xLoc d)) (m (xLoc d)) (m (xLoc d)) (m (xLoc d)) gp g0 g1 g2 g3) : sProp 𝕄)
      = flightIn0 m d L (4 * (k.val + 1)) hc := by
  unfold flightIn0
  exact ex_congr fun gp => ex_congr fun g0 => ex_congr fun g1 => ex_congr fun g2 => ex_congr fun g3 =>
    loadFlight_congr d L _ _ _ _ _ _
      ((k0_off600_eq L k).trans (vec2_congr (by rw [r0_def]; omega)))
      ((k0_off601_eq L k).trans (vec3_congr 0 (by rw [r0_def]; omega))) ((k0_off602_eq L k).trans (vec3_congr 1 (by rw [r0_def]; omega)))
      ((k0_off603_eq L k).trans (vec3_congr 2 (by rw [r0_def]; omega))) ((k0_off604_eq L k).trans (vec3_congr 3 (by rw [r0_def]; omega)))
      _ _ _ _ _ _ _ _ _ _ rsh _ _ _ _ _ gp g0 g1 g2 g3

theorem flightIn_new1 (k : Fin k0_t1_loop.trips) (hk6 : k.val < 7) (hc : 4 * (k.val + 1) + 1 < 32) :
    (iprop(∃ gp g0 g1 g2 g3, loadFlight (F := F) d L cc0_scratch4.sem pS1 xS10 xS11 xS12 xS13
        (pWinOf (k0_off1185 L k) (k0_off1185_inb L k (c5_of k hk6))) (xWinOf (k0_off1186 L k) (k0_off1186_inb L k (c5_of k hk6))) (xWinOf (k0_off1187 L k) (k0_off1187_inb L k (c5_of k hk6))) (xWinOf (k0_off1188 L k) (k0_off1188_inb L k (c5_of k hk6))) (xWinOf (k0_off1189 L k) (k0_off1189_inb L k (c5_of k hk6))) rsh
        (mp m d) (m (xLoc d)) (m (xLoc d)) (m (xLoc d)) (m (xLoc d)) gp g0 g1 g2 g3) : sProp 𝕄)
      = flightIn1 m d L (4 * (k.val + 1) + 1) hc := by
  unfold flightIn1
  exact ex_congr fun gp => ex_congr fun g0 => ex_congr fun g1 => ex_congr fun g2 => ex_congr fun g3 =>
    loadFlight_congr d L _ _ _ _ _ _
      ((k0_off1185_eq L k).trans (vec2_congr (by rw [r0_def]; omega)))
      ((k0_off1186_eq L k).trans (vec3_congr 0 (by rw [r0_def]; omega))) ((k0_off1187_eq L k).trans (vec3_congr 1 (by rw [r0_def]; omega)))
      ((k0_off1188_eq L k).trans (vec3_congr 2 (by rw [r0_def]; omega))) ((k0_off1189_eq L k).trans (vec3_congr 3 (by rw [r0_def]; omega)))
      _ _ _ _ _ _ _ _ _ _ rsh _ _ _ _ _ gp g0 g1 g2 g3

theorem flightIn_new2 (k : Fin k0_t1_loop.trips) (hk6 : k.val < 7) (hc : 4 * (k.val + 1) + 2 < 32) :
    (iprop(∃ gp g0 g1 g2 g3, loadFlight (F := F) d L cc0_scratch5.sem pS2 xS20 xS21 xS22 xS23
        (pWinOf (k0_off1766 L k) (k0_off1766_inb L k (c6_of k hk6))) (xWinOf (k0_off1767 L k) (k0_off1767_inb L k (c6_of k hk6))) (xWinOf (k0_off1768 L k) (k0_off1768_inb L k (c6_of k hk6))) (xWinOf (k0_off1769 L k) (k0_off1769_inb L k (c6_of k hk6))) (xWinOf (k0_off1770 L k) (k0_off1770_inb L k (c6_of k hk6))) rsh
        (mp m d) (m (xLoc d)) (m (xLoc d)) (m (xLoc d)) (m (xLoc d)) gp g0 g1 g2 g3) : sProp 𝕄)
      = flightIn2 m d L (4 * (k.val + 1) + 2) hc := by
  unfold flightIn2
  exact ex_congr fun gp => ex_congr fun g0 => ex_congr fun g1 => ex_congr fun g2 => ex_congr fun g3 =>
    loadFlight_congr d L _ _ _ _ _ _
      ((k0_off1766_eq L k).trans (vec2_congr (by rw [r0_def]; omega)))
      ((k0_off1767_eq L k).trans (vec3_congr 0 (by rw [r0_def]; omega))) ((k0_off1768_eq L k).trans (vec3_congr 1 (by rw [r0_def]; omega)))
      ((k0_off1769_eq L k).trans (vec3_congr 2 (by rw [r0_def]; omega))) ((k0_off1770_eq L k).trans (vec3_congr 3 (by rw [r0_def]; omega)))
      _ _ _ _ _ _ _ _ _ _ rsh _ _ _ _ _ gp g0 g1 g2 g3

theorem lt4_0 : 0 < 4 := by decide
theorem lt4_1 : 1 < 4 := by decide
theorem lt4_2 : 2 < 4 := by decide
theorem lt4_3 : 3 < 4 := by decide

theorem off_n0_0 (L : grid0.Coords) (k : Fin k0_t1_loop.trips) (hk1 : 1 ≤ k.val) :
    k0_off596 L k 2#32 = ![0, r0 L + 4 * (4 * (k.val + 1) - 2), 0] := by
  have hs : ((2 : Fin 4).val) = 2 := rfl
  refine (k0_off596_eq L k 2).trans (vec3_congr 0 ?_)
  rw [r0_def, hs]; omega
theorem off_n0_1 (L : grid0.Coords) (k : Fin k0_t1_loop.trips) (hk1 : 1 ≤ k.val) :
    k0_off597 L k 2#32 = ![1, r0 L + 4 * (4 * (k.val + 1) - 2), 0] := by
  have hs : ((2 : Fin 4).val) = 2 := rfl
  refine (k0_off597_eq L k 2).trans (vec3_congr 1 ?_)
  rw [r0_def, hs]; omega
theorem off_n0_2 (L : grid0.Coords) (k : Fin k0_t1_loop.trips) (hk1 : 1 ≤ k.val) :
    k0_off598 L k 2#32 = ![2, r0 L + 4 * (4 * (k.val + 1) - 2), 0] := by
  have hs : ((2 : Fin 4).val) = 2 := rfl
  refine (k0_off598_eq L k 2).trans (vec3_congr 2 ?_)
  rw [r0_def, hs]; omega
theorem off_n0_3 (L : grid0.Coords) (k : Fin k0_t1_loop.trips) (hk1 : 1 ≤ k.val) :
    k0_off599 L k 2#32 = ![3, r0 L + 4 * (4 * (k.val + 1) - 2), 0] := by
  have hs : ((2 : Fin 4).val) = 2 := rfl
  refine (k0_off599_eq L k 2).trans (vec3_congr 3 ?_)
  rw [r0_def, hs]; omega
theorem off_n1_0 (L : grid0.Coords) (k : Fin k0_t1_loop.trips) (hk1 : 1 ≤ k.val) :
    k0_off596 L k 3#32 = ![0, r0 L + 4 * (4 * (k.val + 1) - 1), 0] := by
  have hs : ((3 : Fin 4).val) = 3 := rfl
  refine (k0_off596_eq L k 3).trans (vec3_congr 0 ?_)
  rw [r0_def, hs]; omega
theorem off_n1_1 (L : grid0.Coords) (k : Fin k0_t1_loop.trips) (hk1 : 1 ≤ k.val) :
    k0_off597 L k 3#32 = ![1, r0 L + 4 * (4 * (k.val + 1) - 1), 0] := by
  have hs : ((3 : Fin 4).val) = 3 := rfl
  refine (k0_off597_eq L k 3).trans (vec3_congr 1 ?_)
  rw [r0_def, hs]; omega
theorem off_n1_2 (L : grid0.Coords) (k : Fin k0_t1_loop.trips) (hk1 : 1 ≤ k.val) :
    k0_off598 L k 3#32 = ![2, r0 L + 4 * (4 * (k.val + 1) - 1), 0] := by
  have hs : ((3 : Fin 4).val) = 3 := rfl
  refine (k0_off598_eq L k 3).trans (vec3_congr 2 ?_)
  rw [r0_def, hs]; omega
theorem off_n1_3 (L : grid0.Coords) (k : Fin k0_t1_loop.trips) (hk1 : 1 ≤ k.val) :
    k0_off599 L k 3#32 = ![3, r0 L + 4 * (4 * (k.val + 1) - 1), 0] := by
  have hs : ((3 : Fin 4).val) = 3 := rfl
  refine (k0_off599_eq L k 3).trans (vec3_congr 3 ?_)
  rw [r0_def, hs]; omega
theorem off_w0_0 (L : grid0.Coords) (k : Fin k0_t1_loop.trips) (hk1 : 1 ≤ k.val) :
    k0_off596 L k 0#32 = ![0, r0 L + 4 * (4 * k.val), 0] := by
  have hs : ((0 : Fin 4).val) = 0 := rfl
  refine (k0_off596_eq L k 0).trans (vec3_congr 0 ?_)
  rw [r0_def, hs]; omega
theorem off_w0_1 (L : grid0.Coords) (k : Fin k0_t1_loop.trips) (hk1 : 1 ≤ k.val) :
    k0_off597 L k 0#32 = ![1, r0 L + 4 * (4 * k.val), 0] := by
  have hs : ((0 : Fin 4).val) = 0 := rfl
  refine (k0_off597_eq L k 0).trans (vec3_congr 1 ?_)
  rw [r0_def, hs]; omega
theorem off_w0_2 (L : grid0.Coords) (k : Fin k0_t1_loop.trips) (hk1 : 1 ≤ k.val) :
    k0_off598 L k 0#32 = ![2, r0 L + 4 * (4 * k.val), 0] := by
  have hs : ((0 : Fin 4).val) = 0 := rfl
  refine (k0_off598_eq L k 0).trans (vec3_congr 2 ?_)
  rw [r0_def, hs]; omega
theorem off_w0_3 (L : grid0.Coords) (k : Fin k0_t1_loop.trips) (hk1 : 1 ≤ k.val) :
    k0_off599 L k 0#32 = ![3, r0 L + 4 * (4 * k.val), 0] := by
  have hs : ((0 : Fin 4).val) = 0 := rfl
  refine (k0_off599_eq L k 0).trans (vec3_congr 3 ?_)
  rw [r0_def, hs]; omega
theorem off_w1_0 (L : grid0.Coords) (k : Fin k0_t1_loop.trips) (hk1 : 1 ≤ k.val) :
    k0_off596 L k 1#32 = ![0, r0 L + 4 * (4 * k.val + 1), 0] := by
  have hs : ((1 : Fin 4).val) = 1 := rfl
  refine (k0_off596_eq L k 1).trans (vec3_congr 0 ?_)
  rw [r0_def, hs]; omega
theorem off_w1_1 (L : grid0.Coords) (k : Fin k0_t1_loop.trips) (hk1 : 1 ≤ k.val) :
    k0_off597 L k 1#32 = ![1, r0 L + 4 * (4 * k.val + 1), 0] := by
  have hs : ((1 : Fin 4).val) = 1 := rfl
  refine (k0_off597_eq L k 1).trans (vec3_congr 1 ?_)
  rw [r0_def, hs]; omega
theorem off_w1_2 (L : grid0.Coords) (k : Fin k0_t1_loop.trips) (hk1 : 1 ≤ k.val) :
    k0_off598 L k 1#32 = ![2, r0 L + 4 * (4 * k.val + 1), 0] := by
  have hs : ((1 : Fin 4).val) = 1 := rfl
  refine (k0_off598_eq L k 1).trans (vec3_congr 2 ?_)
  rw [r0_def, hs]; omega
theorem off_w1_3 (L : grid0.Coords) (k : Fin k0_t1_loop.trips) (hk1 : 1 ≤ k.val) :
    k0_off599 L k 1#32 = ![3, r0 L + 4 * (4 * k.val + 1), 0] := by
  have hs : ((1 : Fin 4).val) = 1 := rfl
  refine (k0_off599_eq L k 1).trans (vec3_congr 3 ?_)
  rw [r0_def, hs]; omega

theorem storeFlight_new0 (k : Fin k0_t1_loop.trips) (hk1 : 1 ≤ k.val) (hc : 4 * (k.val + 1) - 2 < 32) (fs : Buf (Elt F) (sB.view.loc (thr d L))) :
    storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) (m (oLoc d)) (m (oLoc d)) (m (oLoc d)) (m (oLoc d)) fs
      = storeFlight0 (F := F) d L (OW L (4 * (k.val + 1) - 2) 0 hc lt4_0) (OW L (4 * (k.val + 1) - 2) 1 hc lt4_1) (OW L (4 * (k.val + 1) - 2) 2 hc lt4_2) (OW L (4 * (k.val + 1) - 2) 3 hc lt4_3)
          (m (oLoc d)) (m (oLoc d)) (m (oLoc d)) (m (oLoc d)) fs :=
  storeFlight0_congr d L (off_n0_0 L k hk1) (off_n0_1 L k hk1) (off_n0_2 L k hk1) (off_n0_3 L k hk1)
    _ _ _ _ _ _ _ _ _ _ _ _ fs

theorem storeFlight_new1 (k : Fin k0_t1_loop.trips) (hk1 : 1 ≤ k.val) (hc : 4 * (k.val + 1) - 1 < 32) (fs : Buf (Elt F) (sB.view.loc (thr d L))) :
    storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) (m (oLoc d)) (m (oLoc d)) (m (oLoc d)) (m (oLoc d)) fs
      = storeFlight1 (F := F) d L (OW L (4 * (k.val + 1) - 1) 0 hc lt4_0) (OW L (4 * (k.val + 1) - 1) 1 hc lt4_1) (OW L (4 * (k.val + 1) - 1) 2 hc lt4_2) (OW L (4 * (k.val + 1) - 1) 3 hc lt4_3)
          (m (oLoc d)) (m (oLoc d)) (m (oLoc d)) (m (oLoc d)) fs :=
  storeFlight1_congr d L (off_n1_0 L k hk1) (off_n1_1 L k hk1) (off_n1_2 L k hk1) (off_n1_3 L k hk1)
    _ _ _ _ _ _ _ _ _ _ _ _ fs

theorem oWin_drained {o o' : Fin 3 → Nat} (e : o = o') (h : ∀ a, o a + S1x4x1024.size a ≤ S4x4096x1024.size a) (h' : ∀ a, o' a + S1x4x1024.size a ≤ S4x4096x1024.size a)
    (w : S4x1024.Idx → Elt F .f32) :
    (((oWinOf o h).view.loc (thr d L) ↦[(oWinOf o h).view.set]{fullShare} (oWinOf o h).view.writes (Elt F) (oWinOf o h).view.junk [⟨Rect.whole S4x1024, ReadAs.same.apply w⟩]) : sProp 𝕄)
      = ((oWinOf o' h').view.loc (thr d L) ↦[(oWinOf o' h').view.set]{fullShare} (oWinOf o' h').view.writes (Elt F) (oWinOf o' h').view.junk [⟨Rect.whole S4x1024, ReadAs.same.apply w⟩]) := by
  subst e; rfl

theorem outBelow_trip (g : Buf (Elt F) (oLoc d)) (k : ℕ) (hk1 : 1 ≤ k) (hk6 : k < 7) :
    iprop(outBelow d L g (4 * k - 2) ∗ outChunk d L g (4 * k - 2) (by omega) ∗ outChunk d L g (4 * k - 1) (by omega)
        ∗ outChunk d L g (4 * k) (by omega) ∗ outChunk d L g (4 * k + 1) (by omega))
      ⊢ outBelow d L g (4 * (k + 1) - 2) := by
  have e1 : 4 * k - 2 + 1 = 4 * k - 1 := by omega
  have e2 : 4 * k - 1 + 1 = 4 * k := by omega
  have e4 : 4 * k + 1 + 1 = 4 * (k + 1) - 2 := by omega
  iintro ⟨HB, H0, H1, H2, H3⟩
  ihave HB := (Entails.of_eq (outBelow_succ d L g (4 * k - 2) (by omega)).symm) $$ [HB H0]
  · isplitl [HB]; · iexact HB
    iexact H0
  ihave HB := (Entails.of_eq (congrArg (outBelow d L g) e1)) $$ HB
  ihave HB := (Entails.of_eq (outBelow_succ d L g (4 * k - 1) (by omega)).symm) $$ [HB H1]
  · isplitl [HB]; · iexact HB
    iexact H1
  ihave HB := (Entails.of_eq (congrArg (outBelow d L g) e2)) $$ HB
  ihave HB := (Entails.of_eq (outBelow_succ d L g (4 * k) (by omega)).symm) $$ [HB H2]
  · isplitl [HB]; · iexact HB
    iexact H2
  ihave HB := (Entails.of_eq (outBelow_succ d L g (4 * k + 1) (by omega)).symm) $$ [HB H3]
  · isplitl [HB]; · iexact HB
    iexact H3
  iapply (Entails.of_eq (congrArg (outBelow d L g) e4)); iexact HB
end Mid2

section Mid3
variable (m : (ℓ : Loc nD τ sig) → Buf (Elt F) ℓ) (d : Dev nD) (L : grid0.Coords)

theorem flightIn0_def (c : ℕ) (hc : c < 32) :
    flightIn0 m d L c hc = iprop(∃ gp g0 g1 g2 g3, loadFlight (F := F) d L cc0_scratch3.sem pS0 xS00 xS01 xS02 xS03
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightIn1_def (c : ℕ) (hc : c < 32) :
    flightIn1 m d L c hc = iprop(∃ gp g0 g1 g2 g3, loadFlight (F := F) d L cc0_scratch4.sem pS1 xS10 xS11 xS12 xS13
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightIn2_def (c : ℕ) (hc : c < 32) :
    flightIn2 m d L c hc = iprop(∃ gp g0 g1 g2 g3, loadFlight (F := F) d L cc0_scratch5.sem pS2 xS20 xS21 xS22 xS23
      (PW L c hc) (XW L c 0 hc lt4_0) (XW L c 1 hc lt4_1) (XW L c 2 hc lt4_2) (XW L c 3 hc lt4_3) rsh
      (mp m d) (m (xLoc d)) (m (xLoc d)) (m (xLoc d)) (m (xLoc d)) gp g0 g1 g2 g3) := rfl
theorem flightOut0_def (c : ℕ) (hc : c < 32) :
    flightOut0 m d L c hc = iprop(∃ fs, ⌜staged m d L 0 c hc fs⌝ ∗ storeFlight0 (F := F) d L (OW L c 0 hc lt4_0) (OW L c 1 hc lt4_1) (OW L c 2 hc lt4_2) (OW L c 3 hc lt4_3)
      (m (oLoc d)) (m (oLoc d)) (m (oLoc d)) (m (oLoc d)) fs) := rfl
theorem flightOut1_def (c : ℕ) (hc : c < 32) :
    flightOut1 m d L c hc = iprop(∃ fs, ⌜staged m d L 1 c hc fs⌝ ∗ storeFlight1 (F := F) d L (OW L c 0 hc lt4_0) (OW L c 1 hc lt4_1) (OW L c 2 hc lt4_2) (OW L c 3 hc lt4_3)
      (m (oLoc d)) (m (oLoc d)) (m (oLoc d)) (m (oLoc d)) fs) := rfl
theorem freeSlot3_def :
    freeSlot3 (F := F) d L = iprop((∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
      ∗ (∃ g, xS32.view.loc (thr d L) ↦[xS32.view.set]{fullShare} g) ∗ (∃ g, xS33.view.loc (thr d L) ↦[xS33.view.set]{fullShare} g)
      ∗ semVal (thr d L, SemLoc.dma cc0_scratch6.sem) 0) := rfl

theorem srcFrom_trip (fp : Buf (Elt F) (pLoc d)) (fx : Buf (Elt F) (xLoc d)) (k : Fin k0_t1_loop.trips) (hk6 : k.val < 7) :
    srcFrom d L fp fx (4 * k.val + 3)
      = iprop(iprop(((pWinOf (k0_off11 L k) (k0_off11_inb L k (c1_all k))).view.loc (thr d L) ↦[(pWinOf (k0_off11 L k) (k0_off11_inb L k (c1_all k))).view.set]{rsh} fp) ∗ ((xWinOf (k0_off12 L k) (k0_off12_inb L k (c1_all k))).view.loc (thr d L) ↦[(xWinOf (k0_off12 L k) (k0_off12_inb L k (c1_all k))).view.set]{rsh} fx) ∗ ((xWinOf (k0_off13 L k) (k0_off13_inb L k (c1_all k))).view.loc (thr d L) ↦[(xWinOf (k0_off13 L k) (k0_off13_inb L k (c1_all k))).view.set]{rsh} fx) ∗ ((xWinOf (k0_off14 L k) (k0_off14_inb L k (c1_all k))).view.loc (thr d L) ↦[(xWinOf (k0_off14 L k) (k0_off14_inb L k (c1_all k))).view.set]{rsh} fx) ∗ ((xWinOf (k0_off15 L k) (k0_off15_inb L k (c1_all k))).view.loc (thr d L) ↦[(xWinOf (k0_off15 L k) (k0_off15_inb L k (c1_all k))).view.set]{rsh} fx))
        ∗ iprop(((pWinOf (k0_off600 L k) (k0_off600_inb L k (c3_of k hk6))).view.loc (thr d L) ↦[(pWinOf (k0_off600 L k) (k0_off600_inb L k (c3_of k hk6))).view.set]{rsh} fp) ∗ ((xWinOf (k0_off601 L k) (k0_off601_inb L k (c3_of k hk6))).view.loc (thr d L) ↦[(xWinOf (k0_off601 L k) (k0_off601_inb L k (c3_of k hk6))).view.set]{rsh} fx) ∗ ((xWinOf (k0_off602 L k) (k0_off602_inb L k (c3_of k hk6))).view.loc (thr d L) ↦[(xWinOf (k0_off602 L k) (k0_off602_inb L k (c3_of k hk6))).view.set]{rsh} fx) ∗ ((xWinOf (k0_off603 L k) (k0_off603_inb L k (c3_of k hk6))).view.loc (thr d L) ↦[(xWinOf (k0_off603 L k) (k0_off603_inb L k (c3_of k hk6))).view.set]{rsh} fx) ∗ ((xWinOf (k0_off604 L k) (k0_off604_inb L k (c3_of k hk6))).view.loc (thr d L) ↦[(xWinOf (k0_off604 L k) (k0_off604_inb L k (c3_of k hk6))).view.set]{rsh} fx))
        ∗ iprop(((pWinOf (k0_off1185 L k) (k0_off1185_inb L k (c5_of k hk6))).view.loc (thr d L) ↦[(pWinOf (k0_off1185 L k) (k0_off1185_inb L k (c5_of k hk6))).view.set]{rsh} fp) ∗ ((xWinOf (k0_off1186 L k) (k0_off1186_inb L k (c5_of k hk6))).view.loc (thr d L) ↦[(xWinOf (k0_off1186 L k) (k0_off1186_inb L k (c5_of k hk6))).view.set]{rsh} fx) ∗ ((xWinOf (k0_off1187 L k) (k0_off1187_inb L k (c5_of k hk6))).view.loc (thr d L) ↦[(xWinOf (k0_off1187 L k) (k0_off1187_inb L k (c5_of k hk6))).view.set]{rsh} fx) ∗ ((xWinOf (k0_off1188 L k) (k0_off1188_inb L k (c5_of k hk6))).view.loc (thr d L) ↦[(xWinOf (k0_off1188 L k) (k0_off1188_inb L k (c5_of k hk6))).view.set]{rsh} fx) ∗ ((xWinOf (k0_off1189 L k) (k0_off1189_inb L k (c5_of k hk6))).view.loc (thr d L) ↦[(xWinOf (k0_off1189 L k) (k0_off1189_inb L k (c5_of k hk6))).view.set]{rsh} fx))
        ∗ iprop(((pWinOf (k0_off1766 L k) (k0_off1766_inb L k (c6_of k hk6))).view.loc (thr d L) ↦[(pWinOf (k0_off1766 L k) (k0_off1766_inb L k (c6_of k hk6))).view.set]{rsh} fp) ∗ ((xWinOf (k0_off1767 L k) (k0_off1767_inb L k (c6_of k hk6))).view.loc (thr d L) ↦[(xWinOf (k0_off1767 L k) (k0_off1767_inb L k (c6_of k hk6))).view.set]{rsh} fx) ∗ ((xWinOf (k0_off1768 L k) (k0_off1768_inb L k (c6_of k hk6))).view.loc (thr d L) ↦[(xWinOf (k0_off1768 L k) (k0_off1768_inb L k (c6_of k hk6))).view.set]{rsh} fx) ∗ ((xWinOf (k0_off1769 L k) (k0_off1769_inb L k (c6_of k hk6))).view.loc (thr d L) ↦[(xWinOf (k0_off1769 L k) (k0_off1769_inb L k (c6_of k hk6))).view.set]{rsh} fx) ∗ ((xWinOf (k0_off1770 L k) (k0_off1770_inb L k (c6_of k hk6))).view.loc (thr d L) ↦[(xWinOf (k0_off1770 L k) (k0_off1770_inb L k (c6_of k hk6))).view.set]{rsh} fx))
        ∗ srcFrom d L fp fx (4 * (k.val + 1) + 3)) := by
  have h7 : srcFrom d L fp fx (4 * k.val + 3 + 1 + 1 + 1 + 1) = srcFrom d L fp fx (4 * (k.val + 1) + 3) := congrArg _ (by omega)
  rw [srcFrom_succ d L fp fx (4 * k.val + 3) (by omega), srcFrom_succ d L fp fx (4 * k.val + 3 + 1) (by omega),
    srcFrom_succ d L fp fx (4 * k.val + 3 + 1 + 1) (by omega), srcFrom_succ d L fp fx (4 * k.val + 3 + 1 + 1 + 1) (by omega), h7,
    srcChunk_s0 d L fp fx k hk6 (4 * k.val + 3) rfl, srcChunk_s1 d L fp fx k hk6 (4 * k.val + 3 + 1) (by omega),
    srcChunk_s2 d L fp fx k hk6 (4 * k.val + 3 + 1 + 1) (by omega), srcChunk_s3 d L fp fx k hk6 (4 * k.val + 3 + 1 + 1 + 1) (by omega)]

theorem outFrom_trip (fo : Buf (Elt F) (oLoc d)) (k : Fin k0_t1_loop.trips) :
    outFrom d L fo (4 * k.val)
      = iprop(iprop(((oWinOf (k0_off596 L k 0#32) (k0_off596_inb L k 0)).view.loc (thr d L) ↦[(oWinOf (k0_off596 L k 0#32) (k0_off596_inb L k 0)).view.set]{fullShare} fo) ∗ ((oWinOf (k0_off597 L k 0#32) (k0_off597_inb L k 0)).view.loc (thr d L) ↦[(oWinOf (k0_off597 L k 0#32) (k0_off597_inb L k 0)).view.set]{fullShare} fo) ∗ ((oWinOf (k0_off598 L k 0#32) (k0_off598_inb L k 0)).view.loc (thr d L) ↦[(oWinOf (k0_off598 L k 0#32) (k0_off598_inb L k 0)).view.set]{fullShare} fo) ∗ ((oWinOf (k0_off599 L k 0#32) (k0_off599_inb L k 0)).view.loc (thr d L) ↦[(oWinOf (k0_off599 L k 0#32) (k0_off599_inb L k 0)).view.set]{fullShare} fo))
        ∗ iprop(((oWinOf (k0_off596 L k 1#32) (k0_off596_inb L k 1)).view.loc (thr d L) ↦[(oWinOf (k0_off596 L k 1#32) (k0_off596_inb L k 1)).view.set]{fullShare} fo) ∗ ((oWinOf (k0_off597 L k 1#32) (k0_off597_inb L k 1)).view.loc (thr d L) ↦[(oWinOf (k0_off597 L k 1#32) (k0_off597_inb L k 1)).view.set]{fullShare} fo) ∗ ((oWinOf (k0_off598 L k 1#32) (k0_off598_inb L k 1)).view.loc (thr d L) ↦[(oWinOf (k0_off598 L k 1#32) (k0_off598_inb L k 1)).view.set]{fullShare} fo) ∗ ((oWinOf (k0_off599 L k 1#32) (k0_off599_inb L k 1)).view.loc (thr d L) ↦[(oWinOf (k0_off599 L k 1#32) (k0_off599_inb L k 1)).view.set]{fullShare} fo))
        ∗ iprop(((oWinOf (k0_off596 L k 2#32) (k0_off596_inb L k 2)).view.loc (thr d L) ↦[(oWinOf (k0_off596 L k 2#32) (k0_off596_inb L k 2)).view.set]{fullShare} fo) ∗ ((oWinOf (k0_off597 L k 2#32) (k0_off597_inb L k 2)).view.loc (thr d L) ↦[(oWinOf (k0_off597 L k 2#32) (k0_off597_inb L k 2)).view.set]{fullShare} fo) ∗ ((oWinOf (k0_off598 L k 2#32) (k0_off598_inb L k 2)).view.loc (thr d L) ↦[(oWinOf (k0_off598 L k 2#32) (k0_off598_inb L k 2)).view.set]{fullShare} fo) ∗ ((oWinOf (k0_off599 L k 2#32) (k0_off599_inb L k 2)).view.loc (thr d L) ↦[(oWinOf (k0_off599 L k 2#32) (k0_off599_inb L k 2)).view.set]{fullShare} fo))
        ∗ iprop(((oWinOf (k0_off596 L k 3#32) (k0_off596_inb L k 3)).view.loc (thr d L) ↦[(oWinOf (k0_off596 L k 3#32) (k0_off596_inb L k 3)).view.set]{fullShare} fo) ∗ ((oWinOf (k0_off597 L k 3#32) (k0_off597_inb L k 3)).view.loc (thr d L) ↦[(oWinOf (k0_off597 L k 3#32) (k0_off597_inb L k 3)).view.set]{fullShare} fo) ∗ ((oWinOf (k0_off598 L k 3#32) (k0_off598_inb L k 3)).view.loc (thr d L) ↦[(oWinOf (k0_off598 L k 3#32) (k0_off598_inb L k 3)).view.set]{fullShare} fo) ∗ ((oWinOf (k0_off599 L k 3#32) (k0_off599_inb L k 3)).view.loc (thr d L) ↦[(oWinOf (k0_off599 L k 3#32) (k0_off599_inb L k 3)).view.set]{fullShare} fo))
        ∗ outFrom d L fo (4 * (k.val + 1))) := by
  have hk8 := trip_lt k
  have h4 : outFrom d L fo (4 * k.val + 1 + 1 + 1 + 1) = outFrom d L fo (4 * (k.val + 1)) := congrArg _ (by omega)
  rw [outFrom_succ d L fo (4 * k.val) (by omega), outFrom_succ d L fo (4 * k.val + 1) (by omega),
    outFrom_succ d L fo (4 * k.val + 1 + 1) (by omega), outFrom_succ d L fo (4 * k.val + 1 + 1 + 1) (by omega), h4,
    outChunk_s0 d L fo k (4 * k.val) (by omega), outChunk_s1 d L fo k (4 * k.val + 1) rfl,
    outChunk_s2 d L fo k (4 * k.val + 1 + 1) (by omega), outChunk_s3 d L fo k (4 * k.val + 1 + 1 + 1) (by omega)]

theorem xWin_read {o : Fin 3 → Nat} (h : ∀ a, o a + S1x4x1024.size a ≤ S4x4096x1024.size a) (c b : ℕ) (hc : c < 32) (hb : b < 4) (e : o = ![b, r0 L + 4 * c, 0])
    (X : S4x4096x1024.Idx → F .f32) (j : Fin 4) (l : Fin 1024) :
    (xWinOf o h).view.read (Elt F) X (ix2 j l) = X (ix3 (⟨b, hb⟩ : Fin 4) (⟨r0 L + 4 * c + j.val, win_row_lt L c hc j⟩ : Fin 4096) l) := by
  subst e; exact XW_read L c b hc hb X j l
theorem pWin_read {o : Fin 2 → Nat} (h : ∀ a, o a + S4x1024.size a ≤ S4096x1024.size a) (c : ℕ) (hc : c < 32) (e : o = ![r0 L + 4 * c, 0])
    (X : S4096x1024.Idx → F .f32) (j : Fin 4) (l : Fin 1024) :
    (pWinOf o h).view.read (Elt F) X (ix2 j l) = X (ix2 (⟨r0 L + 4 * c + j.val, win_row_lt L c hc j⟩ : Fin 4096) l) := by
  subst e; exact PW_read L c hc X j l
theorem XW_read' (c c' b : ℕ) (hc : c < 32) (hc' : c' < 32) (hb : b < 4) (e : c = c') (X : S4x4096x1024.Idx → F .f32) (j : Fin 4) (l : Fin 1024) :
    (XW L c b hc hb).view.read (Elt F) X (ix2 j l) = X (ix3 (⟨b, hb⟩ : Fin 4) (⟨r0 L + 4 * c' + j.val, win_row_lt L c' hc' j⟩ : Fin 4096) l) := by
  subst e; exact XW_read L c b hc hb X j l
theorem PW_read' (c c' : ℕ) (hc : c < 32) (hc' : c' < 32) (e : c = c') (X : S4096x1024.Idx → F .f32) (j : Fin 4) (l : Fin 1024) :
    (PW L c hc).view.read (Elt F) X (ix2 j l) = X (ix2 (⟨r0 L + 4 * c' + j.val, win_row_lt L c' hc' j⟩ : Fin 4096) l) := by
  subst e; exact PW_read L c hc X j l
end Mid3

set_option maxHeartbeats 4000000 in
theorem region_mid (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk1 : 1 ≤ k.val) (hk6 : k.val < 7)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk8 : k.val < 8 := trip_lt k
  unfold Inv
  rw [loadPart_lt m d L k.val hk8, storePart_mid m d L k.val (by omega) (by omega),
    loadPart_lt m d L (k.val + 1) (by omega), storePart_mid m d L (k.val + 1) (by omega) (by omega),
    srcFrom_trip d L (mp m d) (m (xLoc d)) k hk6, outFrom_trip d L (m (oLoc d)) k]
  iintro ⟨Hmw, ⟨%W', %hW', HO⟩, ⟨HF0, HF1, HF2, Hfree⟩,
    ⟨⟨HQ0, HY00, HY01, HY02, HY03⟩, ⟨HQ1, HY10, HY11, HY12, HY13⟩, ⟨HQ2, HY20, HY21, HY22, HY23⟩, ⟨HQ3, HY30, HY31, HY32, HY33⟩, Hsrc⟩,
    ⟨HC0, HC1⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  ihave HC0 := (Entails.of_eq (flightOut0_def m d L _ _)) $$ HC0
  icases HC0 with ⟨%fsa, %hsta, HC0⟩
  ihave HC1 := (Entails.of_eq (flightOut1_def m d L _ _)) $$ HC1
  icases HC1 with ⟨%fsb, %hstb, HC1⟩
  iapply (wp_wand_r frame (wpE (defs₀ (F := F)) 𝒱₀ (thr d L) none) Set.univ)
  isplitl [Hmw HP3 HX30 HX31 HX32 HX33 HF0 HF1 HF2 HC0 HC1 HQ0 HY00 HY01 HY02 HY03 HQ1 HY10 HY11 HY12 HY13 HQ2 HY20 HY21 HY22 HY23 HQ3 HY30 HY31 HY32 HY33 HO00 HO01 HO02 HO03 HO10 HO11 HO12 HO13 HO20 HO21 HO22 HO23 HO30 HO31 HO32 HO33 Hs6 HO]
  · iapply (tripMid (F := F) d L rsh O W' v2 k hk1 hk6 _ _ _ _ _ _ _ _ _ _ _ _ _ _ _ _ _ _ _ _ _ _ _
      _ _ _ _ _ _ _ _ _ _ _ _ _ _ _ _ _ _ _ _ _ _ _
      (m (xLoc d)) (mp m d) (m (oLoc d)) fsa fsb gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [HC0]; · iexact HC0
    isplitl [HC1]; · iexact HC1
    isplitl [HQ0]; · iexact HQ0
    isplitl [HY00]; · iexact HY00
    isplitl [HY01]; · iexact HY01
    isplitl [HY02]; · iexact HY02
    isplitl [HY03]; · iexact HY03
    isplitl [HQ1]; · iexact HQ1
    isplitl [HY10]; · iexact HY10
    isplitl [HY11]; · iexact HY11
    isplitl [HY12]; · iexact HY12
    isplitl [HY13]; · iexact HY13
    isplitl [HQ2]; · iexact HQ2
    isplitl [HY20]; · iexact HY20
    isplitl [HY21]; · iexact HY21
    isplitl [HY22]; · iexact HY22
    isplitl [HY23]; · iexact HY23
    isplitl [HQ3]; · iexact HQ3
    isplitl [HY30]; · iexact HY30
    isplitl [HY31]; · iexact HY31
    isplitl [HY32]; · iexact HY32
    isplitl [HY33]; · iexact HY33
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, HN0, HN1, HN2, HP3, HX30, HX31, HX32, HX33, Hs6, ⟨%fs2, %hv2, HSF0⟩, ⟨%fs3, %hv3, HSF1⟩,
    HD00, HD01, HD02, HD03, HD10, HD11, HD12, HD13, ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [HN0 HN1 HN2 HP3 HX30 HX31 HX32 HX33 Hs6]
  · isplitl [HN0]; · iapply (Entails.of_eq (flightIn_new0 m d L k hk6 _)); iexact HN0
    isplitl [HN1]; · iapply (Entails.of_eq (flightIn_new1 m d L k hk6 _)); iexact HN1
    isplitl [HN2]; · iapply (Entails.of_eq (flightIn_new2 m d L k hk6 _)); iexact HN2
    iapply (Entails.of_eq (freeSlot3_def d L).symm)
    isplitl [HP3]; · iexact HP3
    isplitl [HX30]; · iexact HX30
    isplitl [HX31]; · iexact HX31
    isplitl [HX32]; · iexact HX32
    isplitl [HX33]; · iexact HX33
    iexact Hs6
  isplitl [Hsrc]; · iexact Hsrc
  isplitl [HSF0 HSF1]
  · isplitl [HSF0]
    · iapply (Entails.of_eq (flightOut0_def m d L _ _).symm)
      iexists fs2; isplitr
      · ipureintro; exact hst2
      · iapply (Entails.of_eq (storeFlight_new0 m d L k hk1 _ fs2)); iexact HSF0
    · iapply (Entails.of_eq (flightOut1_def m d L _ _).symm)
      iexists fs3; isplitr
      · ipureintro; exact hst3
      · iapply (Entails.of_eq (storeFlight_new1 m d L k hk1 _ fs3)); iexact HSF1
  isplitl [Hout]; · iexact Hout
  iapply (outBelow_trip d L (mres m d) k.val hk1 hk6)
  isplitl [Hbel]; · iexact Hbel
  isplitl [HD00 HD01 HD02 HD03]
  · iapply (out_done0 m d L (4 * k.val - 2) _ fsa hsta)
    isplitl [HD00]; · iexact HD00
    isplitl [HD01]; · iexact HD01
    isplitl [HD02]; · iexact HD02
    iexact HD03
  isplitl [HD10 HD11 HD12 HD13]
  · iapply (out_done1 m d L (4 * k.val - 1) _ fsb hstb)
    isplitl [HD10]; · iexact HD10
    isplitl [HD11]; · iexact HD11
    isplitl [HD12]; · iexact HD12
    iexact HD13
  isplitl [HW00 HW01 HW02 HW03]
  · iapply (out_done0 m d L (4 * k.val) _ fs0 hst0)
    isplitl [HW00]; · iapply (Entails.of_eq (oWin_drained d L (off_w0_0 L k hk1) _ _ _)); iexact HW00
    isplitl [HW01]; · iapply (Entails.of_eq (oWin_drained d L (off_w0_1 L k hk1) _ _ _)); iexact HW01
    isplitl [HW02]; · iapply (Entails.of_eq (oWin_drained d L (off_w0_2 L k hk1) _ _ _)); iexact HW02
    iapply (Entails.of_eq (oWin_drained d L (off_w0_3 L k hk1) _ _ _)); iexact HW03
  · iapply (out_done1 m d L (4 * k.val + 1) _ fs1 hst1)
    isplitl [HW10]; · iapply (Entails.of_eq (oWin_drained d L (off_w1_0 L k hk1) _ _ _)); iexact HW10
    isplitl [HW11]; · iapply (Entails.of_eq (oWin_drained d L (off_w1_1 L k hk1) _ _ _)); iexact HW11
    isplitl [HW12]; · iapply (Entails.of_eq (oWin_drained d L (off_w1_2 L k hk1) _ _ _)); iexact HW12
    iapply (Entails.of_eq (oWin_drained d L (off_w1_3 L k hk1) _ _ _)); iexact HW13

end Cert.Proof.KB

end
-- ==== Proof.BTrip0.lean ====
import proofs.«210091_g81140522156176_cont_9to1_m_468_11_alg».proof.Proof.BTrip

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 16000000 in
set_option maxRecDepth 65536 in
theorem trip0 (d : Dev nD) (L : grid0.Coords) (q : PosShare TreeShare) (O : CellTallies nD τ sig (HIx 1)) (W : Waits sig (HIx 1)) (v2 : BitVec 32)
    (k : Fin k0_t1_loop.trips) (hk0 : k.val = 0)
    (iP0 iX00 iX01 iX02 iX03 iP1 iX10 iX11 iX12 iX13 iP2 iX20 iX21 iX22 iX23 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L)))
    (fx : Buf (Elt F) (xLoc d)) (fp : Buf (Elt F) (pLoc d)) (fo : Buf (Elt F) (oLoc d))
    (f : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    let h3 := c3_of k (by omega)
    let h5 := c5_of k (by omega)
    let h6 := c6_of k (by omega)
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ semVal (thr d L, SemLoc.dma cc0_scratch7.sem) 0
        ∗ semVal (thr d L, SemLoc.dma cc0_scratch8.sem) 0
        ∗ (sB.view.loc (thr d L) ↦{fullShare} f)
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((pWinOf (k0_off600 L k) (k0_off600_inb L k h3)).view.loc (thr d L) ↦[(pWinOf (k0_off600 L k) (k0_off600_inb L k h3)).view.set]{q} fp)
        ∗ ((xWinOf (k0_off601 L k) (k0_off601_inb L k h3)).view.loc (thr d L) ↦[(xWinOf (k0_off601 L k) (k0_off601_inb L k h3)).view.set]{q} fx)
        ∗ ((xWinOf (k0_off602 L k) (k0_off602_inb L k h3)).view.loc (thr d L) ↦[(xWinOf (k0_off602 L k) (k0_off602_inb L k h3)).view.set]{q} fx)
        ∗ ((xWinOf (k0_off603 L k) (k0_off603_inb L k h3)).view.loc (thr d L) ↦[(xWinOf (k0_off603 L k) (k0_off603_inb L k h3)).view.set]{q} fx)
        ∗ ((xWinOf (k0_off604 L k) (k0_off604_inb L k h3)).view.loc (thr d L) ↦[(xWinOf (k0_off604 L k) (k0_off604_inb L k h3)).view.set]{q} fx)
        ∗ ((pWinOf (k0_off1185 L k) (k0_off1185_inb L k h5)).view.loc (thr d L) ↦[(pWinOf (k0_off1185 L k) (k0_off1185_inb L k h5)).view.set]{q} fp)
        ∗ ((xWinOf (k0_off1186 L k) (k0_off1186_inb L k h5)).view.loc (thr d L) ↦[(xWinOf (k0_off1186 L k) (k0_off1186_inb L k h5)).view.set]{q} fx)
        ∗ ((xWinOf (k0_off1187 L k) (k0_off1187_inb L k h5)).view.loc (thr d L) ↦[(xWinOf (k0_off1187 L k) (k0_off1187_inb L k h5)).view.set]{q} fx)
        ∗ ((xWinOf (k0_off1188 L k) (k0_off1188_inb L k h5)).view.loc (thr d L) ↦[(xWinOf (k0_off1188 L k) (k0_off1188_inb L k h5)).view.set]{q} fx)
        ∗ ((xWinOf (k0_off1189 L k) (k0_off1189_inb L k h5)).view.loc (thr d L) ↦[(xWinOf (k0_off1189 L k) (k0_off1189_inb L k h5)).view.set]{q} fx)
        ∗ ((pWinOf (k0_off1766 L k) (k0_off1766_inb L k h6)).view.loc (thr d L) ↦[(pWinOf (k0_off1766 L k) (k0_off1766_inb L k h6)).view.set]{q} fp)
        ∗ ((xWinOf (k0_off1767 L k) (k0_off1767_inb L k h6)).view.loc (thr d L) ↦[(xWinOf (k0_off1767 L k) (k0_off1767_inb L k h6)).view.set]{q} fx)
        ∗ ((xWinOf (k0_off1768 L k) (k0_off1768_inb L k h6)).view.loc (thr d L) ↦[(xWinOf (k0_off1768 L k) (k0_off1768_inb L k h6)).view.set]{q} fx)
        ∗ ((xWinOf (k0_off1769 L k) (k0_off1769_inb L k h6)).view.loc (thr d L) ↦[(xWinOf (k0_off1769 L k) (k0_off1769_inb L k h6)).view.set]{q} fx)
        ∗ ((xWinOf (k0_off1770 L k) (k0_off1770_inb L k h6)).view.loc (thr d L) ↦[(xWinOf (k0_off1770 L k) (k0_off1770_inb L k h6)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ gp g0 g1 g2 g3, loadFlight (F := F) d L cc0_scratch3.sem pS0 xS00 xS01 xS02 xS03 (pWinOf (k0_off600 L k) (k0_off600_inb L k h3)) (xWinOf (k0_off601 L k) (k0_off601_inb L k h3)) (xWinOf (k0_off602 L k) (k0_off602_inb L k h3)) (xWinOf (k0_off603 L k) (k0_off603_inb L k h3)) (xWinOf (k0_off604 L k) (k0_off604_inb L k h3)) q fp fx fx fx fx gp g0 g1 g2 g3)
            ∗ (∃ gp g0 g1 g2 g3, loadFlight (F := F) d L cc0_scratch4.sem pS1 xS10 xS11 xS12 xS13 (pWinOf (k0_off1185 L k) (k0_off1185_inb L k h5)) (xWinOf (k0_off1186 L k) (k0_off1186_inb L k h5)) (xWinOf (k0_off1187 L k) (k0_off1187_inb L k h5)) (xWinOf (k0_off1188 L k) (k0_off1188_inb L k h5)) (xWinOf (k0_off1189 L k) (k0_off1189_inb L k h5)) q fp fx fx fx fx gp g0 g1 g2 g3)
            ∗ (∃ gp g0 g1 g2 g3, loadFlight (F := F) d L cc0_scratch5.sem pS2 xS20 xS21 xS22 xS23 (pWinOf (k0_off1766 L k) (k0_off1766_inb L k h6)) (xWinOf (k0_off1767 L k) (k0_off1767_inb L k h6)) (xWinOf (k0_off1768 L k) (k0_off1768_inb L k h6)) (xWinOf (k0_off1769 L k) (k0_off1769_inb L k h6)) (xWinOf (k0_off1770 L k) (k0_off1770_inb L k h6)) q fp fx fx fx fx gp g0 g1 g2 g3)
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1 h3 h5 h6
  have hk8 : k.val < 8 := Nat.lt_of_lt_of_le k.isLt k0_t1_abs.2.1
  have h2 := c2_not k hk0
  have h4 := c4_not k hk0
  unfold k0_t1_body loadFlight storeFlight0 storeFlight1 dlv pWinOf xWinOf oWinOf lnd
  iintro ⟨Hmw, HP3, HX30, HX31, HX32, HX33, HB0, HB1, HB2, Hs7, Hs8, HSB, HQ0, HY00, HY01, HY02, HY03, HQ1, HY10, HY11, HY12, HY13, HQ2, HY20, HY21, HY22, HY23, HQ3, HY30, HY31, HY32, HY33, HO00, HO01, HO02, HO03, HO10, HO11, HO12, HO13, HO20, HO21, HO22, HO23, HO30, HO31, HO32, HO33, Hs6, HO⟩
  sl_exec_parts
  sl_for (innerInv0W (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 HSB]
  case region =>
    intro j acc
    exact inner0W_region d L _ _ _ _ _ _ _ _ _ j acc
  · unfold innerInv0W
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [HSB]; · iexact HSB
    ipureintro; intro b l j' hj; exact absurd hj (Nat.not_lt_zero _)
  iintro %_ HI
  unfold innerInv0W
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_slots (F := F) d (cV L) (jV L) fs0)) $$ H2
  icases HSl with ⟨HS00, HS01, HS02, HS03, HS10, HS11, HS12, HS13⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HB0]; · iexists _, _, _, _, _; iexact HB0
  isplitl [HB1]; · iexists _, _, _, _, _; iexact HB1
  isplitl [HB2]; · iexists _, _, _, _, _; iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [Hs7]
  · iexists _
    isplitl []
    · ipureintro; exact hv2
    · iexact Hs7
  isplitl [Hs8]
  · iexists _
    isplitl []
    · ipureintro; exact hv3
    · iexact Hs8
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KB

end
-- ==== Proof.BRegion0L.lean ====
import proofs.«210091_g81140522156176_cont_9to1_m_468_11_alg».proof.Proof.BRegion
import proofs.«210091_g81140522156176_cont_9to1_m_468_11_alg».proof.Proof.BTrip0

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

theorem off0_n0_0 (L : grid0.Coords) (k : Fin k0_t1_loop.trips) :
    k0_off596 L k 2#32 = ![0, r0 L + 4 * (4 * (k.val + 1) - 2), 0] := by
  have hs : ((2 : Fin 4).val) = 2 := rfl
  refine (k0_off596_eq L k 2).trans (vec3_congr 0 ?_)
  rw [r0_def, hs]; omega
theorem off0_n0_1 (L : grid0.Coords) (k : Fin k0_t1_loop.trips) :
    k0_off597 L k 2#32 = ![1, r0 L + 4 * (4 * (k.val + 1) - 2), 0] := by
  have hs : ((2 : Fin 4).val) = 2 := rfl
  refine (k0_off597_eq L k 2).trans (vec3_congr 1 ?_)
  rw [r0_def, hs]; omega
theorem off0_n0_2 (L : grid0.Coords) (k : Fin k0_t1_loop.trips) :
    k0_off598 L k 2#32 = ![2, r0 L + 4 * (4 * (k.val + 1) - 2), 0] := by
  have hs : ((2 : Fin 4).val) = 2 := rfl
  refine (k0_off598_eq L k 2).trans (vec3_congr 2 ?_)
  rw [r0_def, hs]; omega
theorem off0_n0_3 (L : grid0.Coords) (k : Fin k0_t1_loop.trips) :
    k0_off599 L k 2#32 = ![3, r0 L + 4 * (4 * (k.val + 1) - 2), 0] := by
  have hs : ((2 : Fin 4).val) = 2 := rfl
  refine (k0_off599_eq L k 2).trans (vec3_congr 3 ?_)
  rw [r0_def, hs]; omega
theorem off0_n1_0 (L : grid0.Coords) (k : Fin k0_t1_loop.trips) :
    k0_off596 L k 3#32 = ![0, r0 L + 4 * (4 * (k.val + 1) - 1), 0] := by
  have hs : ((3 : Fin 4).val) = 3 := rfl
  refine (k0_off596_eq L k 3).trans (vec3_congr 0 ?_)
  rw [r0_def, hs]; omega
theorem off0_n1_1 (L : grid0.Coords) (k : Fin k0_t1_loop.trips) :
    k0_off597 L k 3#32 = ![1, r0 L + 4 * (4 * (k.val + 1) - 1), 0] := by
  have hs : ((3 : Fin 4).val) = 3 := rfl
  refine (k0_off597_eq L k 3).trans (vec3_congr 1 ?_)
  rw [r0_def, hs]; omega
theorem off0_n1_2 (L : grid0.Coords) (k : Fin k0_t1_loop.trips) :
    k0_off598 L k 3#32 = ![2, r0 L + 4 * (4 * (k.val + 1) - 1), 0] := by
  have hs : ((3 : Fin 4).val) = 3 := rfl
  refine (k0_off598_eq L k 3).trans (vec3_congr 2 ?_)
  rw [r0_def, hs]; omega
theorem off0_n1_3 (L : grid0.Coords) (k : Fin k0_t1_loop.trips) :
    k0_off599 L k 3#32 = ![3, r0 L + 4 * (4 * (k.val + 1) - 1), 0] := by
  have hs : ((3 : Fin 4).val) = 3 := rfl
  refine (k0_off599_eq L k 3).trans (vec3_congr 3 ?_)
  rw [r0_def, hs]; omega
theorem off0_w0_0 (L : grid0.Coords) (k : Fin k0_t1_loop.trips) :
    k0_off596 L k 0#32 = ![0, r0 L + 4 * (4 * k.val), 0] := by
  have hs : ((0 : Fin 4).val) = 0 := rfl
  refine (k0_off596_eq L k 0).trans (vec3_congr 0 ?_)
  rw [r0_def, hs]; omega
theorem off0_w0_1 (L : grid0.Coords) (k : Fin k0_t1_loop.trips) :
    k0_off597 L k 0#32 = ![1, r0 L + 4 * (4 * k.val), 0] := by
  have hs : ((0 : Fin 4).val) = 0 := rfl
  refine (k0_off597_eq L k 0).trans (vec3_congr 1 ?_)
  rw [r0_def, hs]; omega
theorem off0_w0_2 (L : grid0.Coords) (k : Fin k0_t1_loop.trips) :
    k0_off598 L k 0#32 = ![2, r0 L + 4 * (4 * k.val), 0] := by
  have hs : ((0 : Fin 4).val) = 0 := rfl
  refine (k0_off598_eq L k 0).trans (vec3_congr 2 ?_)
  rw [r0_def, hs]; omega
theorem off0_w0_3 (L : grid0.Coords) (k : Fin k0_t1_loop.trips) :
    k0_off599 L k 0#32 = ![3, r0 L + 4 * (4 * k.val), 0] := by
  have hs : ((0 : Fin 4).val) = 0 := rfl
  refine (k0_off599_eq L k 0).trans (vec3_congr 3 ?_)
  rw [r0_def, hs]; omega
theorem off0_w1_0 (L : grid0.Coords) (k : Fin k0_t1_loop.trips) :
    k0_off596 L k 1#32 = ![0, r0 L + 4 * (4 * k.val + 1), 0] := by
  have hs : ((1 : Fin 4).val) = 1 := rfl
  refine (k0_off596_eq L k 1).trans (vec3_congr 0 ?_)
  rw [r0_def, hs]; omega
theorem off0_w1_1 (L : grid0.Coords) (k : Fin k0_t1_loop.trips) :
    k0_off597 L k 1#32 = ![1, r0 L + 4 * (4 * k.val + 1), 0] := by
  have hs : ((1 : Fin 4).val) = 1 := rfl
  refine (k0_off597_eq L k 1).trans (vec3_congr 1 ?_)
  rw [r0_def, hs]; omega
theorem off0_w1_2 (L : grid0.Coords) (k : Fin k0_t1_loop.trips) :
    k0_off598 L k 1#32 = ![2, r0 L + 4 * (4 * k.val + 1), 0] := by
  have hs : ((1 : Fin 4).val) = 1 := rfl
  refine (k0_off598_eq L k 1).trans (vec3_congr 2 ?_)
  rw [r0_def, hs]; omega
theorem off0_w1_3 (L : grid0.Coords) (k : Fin k0_t1_loop.trips) :
    k0_off599 L k 1#32 = ![3, r0 L + 4 * (4 * k.val + 1), 0] := by
  have hs : ((1 : Fin 4).val) = 1 := rfl
  refine (k0_off599_eq L k 1).trans (vec3_congr 3 ?_)
  rw [r0_def, hs]; omega

section First
variable (m : (ℓ : Loc nD τ sig) → Buf (Elt F) ℓ) (d : Dev nD) (L : grid0.Coords)

theorem storePart_zero (g : ℕ) (h : g = 0) :
    storePart m d L g = iprop(semVal (thr d L, SemLoc.dma cc0_scratch7.sem) 0 ∗ semVal (thr d L, SemLoc.dma cc0_scratch8.sem) 0 ∗ ∃ f, sB.view.loc (thr d L) ↦{fullShare} f) := by
  unfold storePart; rw [dif_pos h]

theorem storeFlight0_new0 (k : Fin k0_t1_loop.trips) (hc : 4 * (k.val + 1) - 2 < 32) (fs : Buf (Elt F) (sB.view.loc (thr d L))) :
    storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) (m (oLoc d)) (m (oLoc d)) (m (oLoc d)) (m (oLoc d)) fs
      = storeFlight0 (F := F) d L (OW L (4 * (k.val + 1) - 2) 0 hc lt4_0) (OW L (4 * (k.val + 1) - 2) 1 hc lt4_1) (OW L (4 * (k.val + 1) - 2) 2 hc lt4_2) (OW L (4 * (k.val + 1) - 2) 3 hc lt4_3)
          (m (oLoc d)) (m (oLoc d)) (m (oLoc d)) (m (oLoc d)) fs :=
  storeFlight0_congr d L (off0_n0_0 L k) (off0_n0_1 L k) (off0_n0_2 L k) (off0_n0_3 L k)
    _ _ _ _ _ _ _ _ _ _ _ _ fs
theorem storeFlight0_new1 (k : Fin k0_t1_loop.trips) (hc : 4 * (k.val + 1) - 1 < 32) (fs : Buf (Elt F) (sB.view.loc (thr d L))) :
    storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) (m (oLoc d)) (m (oLoc d)) (m (oLoc d)) (m (oLoc d)) fs
      = storeFlight1 (F := F) d L (OW L (4 * (k.val + 1) - 1) 0 hc lt4_0) (OW L (4 * (k.val + 1) - 1) 1 hc lt4_1) (OW L (4 * (k.val + 1) - 1) 2 hc lt4_2) (OW L (4 * (k.val + 1) - 1) 3 hc lt4_3)
          (m (oLoc d)) (m (oLoc d)) (m (oLoc d)) (m (oLoc d)) fs :=
  storeFlight1_congr d L (off0_n1_0 L k) (off0_n1_1 L k) (off0_n1_2 L k) (off0_n1_3 L k)
    _ _ _ _ _ _ _ _ _ _ _ _ fs

theorem outBelow_trip0 (g : Buf (Elt F) (oLoc d)) (k : ℕ) (hk0 : k = 0) :
    iprop(outBelow d L g (4 * k - 2) ∗ outChunk d L g (4 * k) (by omega) ∗ outChunk d L g (4 * k + 1) (by omega))
      ⊢ outBelow d L g (4 * (k + 1) - 2) := by
  subst hk0
  iintro ⟨HB, H0, H1⟩
  ihave HB := (Entails.of_eq (outBelow_succ d L g 0 (by omega)).symm) $$ [HB H0]
  · isplitl [HB]; · iexact HB
    iexact H0
  ihave HB := (Entails.of_eq (outBelow_succ d L g 1 (by omega)).symm) $$ [HB H1]
  · isplitl [HB]; · iexact HB
    iexact H1
  iexact HB
end First

set_option maxHeartbeats 4000000 in
theorem region_0 (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk0 : k.val = 0)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk6 : k.val < 7 := by omega
  have hk8 : k.val < 8 := by omega
  unfold Inv
  rw [loadPart_lt m d L k.val hk8, storePart_zero m d L k.val hk0,
    loadPart_lt m d L (k.val + 1) (by omega), storePart_mid m d L (k.val + 1) (by omega) (by omega),
    srcFrom_trip d L (mp m d) (m (xLoc d)) k hk6, outFrom_trip d L (m (oLoc d)) k]
  iintro ⟨Hmw, ⟨%W', %hW', HO⟩, ⟨HF0, HF1, HF2, Hfree⟩,
    ⟨⟨HQ0, HY00, HY01, HY02, HY03⟩, ⟨HQ1, HY10, HY11, HY12, HY13⟩, ⟨HQ2, HY20, HY21, HY22, HY23⟩, ⟨HQ3, HY30, HY31, HY32, HY33⟩, Hsrc⟩,
    ⟨Hs7, Hs8, ⟨%f, Hsb⟩⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  iapply (wp_wand_r frame (wpE (defs₀ (F := F)) 𝒱₀ (thr d L) none) Set.univ)
  isplitl [Hmw HP3 HX30 HX31 HX32 HX33 HF0 HF1 HF2 Hs7 Hs8 Hsb HQ0 HY00 HY01 HY02 HY03 HQ1 HY10 HY11 HY12 HY13 HQ2 HY20 HY21 HY22 HY23 HQ3 HY30 HY31 HY32 HY33 HO00 HO01 HO02 HO03 HO10 HO11 HO12 HO13 HO20 HO21 HO22 HO23 HO30 HO31 HO32 HO33 Hs6 HO]
  · iapply (trip0 (F := F) d L rsh O W' v2 k hk0 _ _ _ _ _ _ _ _ _ _ _ _ _ _ _
      _ _ _ _ _ _ _ _ _ _ _ _ _ _ _
      (m (xLoc d)) (mp m d) (m (oLoc d)) f gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [Hs7]; · iexact Hs7
    isplitl [Hs8]; · iexact Hs8
    isplitl [Hsb]; · iexact Hsb
    isplitl [HQ0]; · iexact HQ0
    isplitl [HY00]; · iexact HY00
    isplitl [HY01]; · iexact HY01
    isplitl [HY02]; · iexact HY02
    isplitl [HY03]; · iexact HY03
    isplitl [HQ1]; · iexact HQ1
    isplitl [HY10]; · iexact HY10
    isplitl [HY11]; · iexact HY11
    isplitl [HY12]; · iexact HY12
    isplitl [HY13]; · iexact HY13
    isplitl [HQ2]; · iexact HQ2
    isplitl [HY20]; · iexact HY20
    isplitl [HY21]; · iexact HY21
    isplitl [HY22]; · iexact HY22
    isplitl [HY23]; · iexact HY23
    isplitl [HQ3]; · iexact HQ3
    isplitl [HY30]; · iexact HY30
    isplitl [HY31]; · iexact HY31
    isplitl [HY32]; · iexact HY32
    isplitl [HY33]; · iexact HY33
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, HN0, HN1, HN2, HP3, HX30, HX31, HX32, HX33, Hs6, ⟨%fs2, %hv2, HSF0⟩, ⟨%fs3, %hv3, HSF1⟩,
    ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [HN0 HN1 HN2 HP3 HX30 HX31 HX32 HX33 Hs6]
  · isplitl [HN0]; · iapply (Entails.of_eq (flightIn_new0 m d L k hk6 _)); iexact HN0
    isplitl [HN1]; · iapply (Entails.of_eq (flightIn_new1 m d L k hk6 _)); iexact HN1
    isplitl [HN2]; · iapply (Entails.of_eq (flightIn_new2 m d L k hk6 _)); iexact HN2
    iapply (Entails.of_eq (freeSlot3_def d L).symm)
    isplitl [HP3]; · iexact HP3
    isplitl [HX30]; · iexact HX30
    isplitl [HX31]; · iexact HX31
    isplitl [HX32]; · iexact HX32
    isplitl [HX33]; · iexact HX33
    iexact Hs6
  isplitl [Hsrc]; · iexact Hsrc
  isplitl [HSF0 HSF1]
  · isplitl [HSF0]
    · iapply (Entails.of_eq (flightOut0_def m d L _ _).symm)
      iexists fs2; isplitr
      · ipureintro; exact hst2
      · iapply (Entails.of_eq (storeFlight0_new0 m d L k _ fs2)); iexact HSF0
    · iapply (Entails.of_eq (flightOut1_def m d L _ _).symm)
      iexists fs3; isplitr
      · ipureintro; exact hst3
      · iapply (Entails.of_eq (storeFlight0_new1 m d L k _ fs3)); iexact HSF1
  isplitl [Hout]; · iexact Hout
  iapply (outBelow_trip0 d L (mres m d) k.val hk0)
  isplitl [Hbel]; · iexact Hbel
  isplitl [HW00 HW01 HW02 HW03]
  · iapply (out_done0 m d L (4 * k.val) _ fs0 hst0)
    isplitl [HW00]; · iapply (Entails.of_eq (oWin_drained d L (off0_w0_0 L k) _ _ _)); iexact HW00
    isplitl [HW01]; · iapply (Entails.of_eq (oWin_drained d L (off0_w0_1 L k) _ _ _)); iexact HW01
    isplitl [HW02]; · iapply (Entails.of_eq (oWin_drained d L (off0_w0_2 L k) _ _ _)); iexact HW02
    iapply (Entails.of_eq (oWin_drained d L (off0_w0_3 L k) _ _ _)); iexact HW03
  · iapply (out_done1 m d L (4 * k.val + 1) _ fs1 hst1)
    isplitl [HW10]; · iapply (Entails.of_eq (oWin_drained d L (off0_w1_0 L k) _ _ _)); iexact HW10
    isplitl [HW11]; · iapply (Entails.of_eq (oWin_drained d L (off0_w1_1 L k) _ _ _)); iexact HW11
    isplitl [HW12]; · iapply (Entails.of_eq (oWin_drained d L (off0_w1_2 L k) _ _ _)); iexact HW12
    iapply (Entails.of_eq (oWin_drained d L (off0_w1_3 L k) _ _ _)); iexact HW13

end Cert.Proof.KB

end
-- ==== Proof.BTrip7.lean ====
import proofs.«210091_g81140522156176_cont_9to1_m_468_11_alg».proof.Proof.BTrip

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 16000000 in
set_option maxRecDepth 65536 in
theorem trip7 (d : Dev nD) (L : grid0.Coords) (q : PosShare TreeShare) (O : CellTallies nD τ sig (HIx 1)) (W : Waits sig (HIx 1)) (v2 : BitVec 32)
    (k : Fin k0_t1_loop.trips) (hk7 : k.val = 7)
    (iP0 iX00 iX01 iX02 iX03 iP1 iX10 iX11 iX12 iX13 iP2 iX20 iX21 iX22 iX23 iO00 iO01 iO02 iO03 iO10 iO11 iO12 iO13 : Memref sig .scVector .hbm S4x1024 .f32) (fp0 : Buf (Elt F) (iP0.view.loc (thr d L))) (fx00 : Buf (Elt F) (iX00.view.loc (thr d L))) (fx01 : Buf (Elt F) (iX01.view.loc (thr d L))) (fx02 : Buf (Elt F) (iX02.view.loc (thr d L))) (fx03 : Buf (Elt F) (iX03.view.loc (thr d L))) (fp1 : Buf (Elt F) (iP1.view.loc (thr d L))) (fx10 : Buf (Elt F) (iX10.view.loc (thr d L))) (fx11 : Buf (Elt F) (iX11.view.loc (thr d L))) (fx12 : Buf (Elt F) (iX12.view.loc (thr d L))) (fx13 : Buf (Elt F) (iX13.view.loc (thr d L))) (fp2 : Buf (Elt F) (iP2.view.loc (thr d L))) (fx20 : Buf (Elt F) (iX20.view.loc (thr d L))) (fx21 : Buf (Elt F) (iX21.view.loc (thr d L))) (fx22 : Buf (Elt F) (iX22.view.loc (thr d L))) (fx23 : Buf (Elt F) (iX23.view.loc (thr d L))) (go00 : Buf (Elt F) (iO00.view.loc (thr d L))) (go01 : Buf (Elt F) (iO01.view.loc (thr d L))) (go02 : Buf (Elt F) (iO02.view.loc (thr d L))) (go03 : Buf (Elt F) (iO03.view.loc (thr d L))) (go10 : Buf (Elt F) (iO10.view.loc (thr d L))) (go11 : Buf (Elt F) (iO11.view.loc (thr d L))) (go12 : Buf (Elt F) (iO12.view.loc (thr d L))) (go13 : Buf (Elt F) (iO13.view.loc (thr d L)))
    (fx : Buf (Elt F) (xLoc d)) (fp : Buf (Elt F) (pLoc d)) (fo : Buf (Elt F) (oLoc d))
    (fsa fsb : Buf (Elt F) (sB.view.loc (thr d L))) (gp0 : Buf (Elt F) (pS0.view.loc (thr d L))) (gp1 : Buf (Elt F) (pS1.view.loc (thr d L))) (gp2 : Buf (Elt F) (pS2.view.loc (thr d L))) (gp3 : Buf (Elt F) (pS3.view.loc (thr d L))) (gx00 : Buf (Elt F) (xS00.view.loc (thr d L))) (gx01 : Buf (Elt F) (xS01.view.loc (thr d L))) (gx02 : Buf (Elt F) (xS02.view.loc (thr d L))) (gx03 : Buf (Elt F) (xS03.view.loc (thr d L))) (gx10 : Buf (Elt F) (xS10.view.loc (thr d L))) (gx11 : Buf (Elt F) (xS11.view.loc (thr d L))) (gx12 : Buf (Elt F) (xS12.view.loc (thr d L))) (gx13 : Buf (Elt F) (xS13.view.loc (thr d L))) (gx20 : Buf (Elt F) (xS20.view.loc (thr d L))) (gx21 : Buf (Elt F) (xS21.view.loc (thr d L))) (gx22 : Buf (Elt F) (xS22.view.loc (thr d L))) (gx23 : Buf (Elt F) (xS23.view.loc (thr d L))) (gx30 : Buf (Elt F) (xS30.view.loc (thr d L))) (gx31 : Buf (Elt F) (xS31.view.loc (thr d L))) (gx32 : Buf (Elt F) (xS32.view.loc (thr d L))) (gx33 : Buf (Elt F) (xS33.view.loc (thr d L)))
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    let h1 := c1_all k
    (iprop(Transfers.MayWaits (thr d L) (none : HIx 1) O
        ∗ (pS3.view.loc (thr d L) ↦[pS3.view.set]{fullShare} gp3)
        ∗ (xS30.view.loc (thr d L) ↦[xS30.view.set]{fullShare} gx30) ∗ (xS31.view.loc (thr d L) ↦[xS31.view.set]{fullShare} gx31)
        ∗ (xS32.view.loc (thr d L) ↦[xS32.view.set]{fullShare} gx32) ∗ (xS33.view.loc (thr d L) ↦[xS33.view.set]{fullShare} gx33)
        ∗ loadFlight (F := F) d L cc0_scratch3.sem pS0 xS00 xS01 xS02 xS03 iP0 iX00 iX01 iX02 iX03 q fp0 fx00 fx01 fx02 fx03 gp0 gx00 gx01 gx02 gx03
        ∗ loadFlight (F := F) d L cc0_scratch4.sem pS1 xS10 xS11 xS12 xS13 iP1 iX10 iX11 iX12 iX13 q fp1 fx10 fx11 fx12 fx13 gp1 gx10 gx11 gx12 gx13
        ∗ loadFlight (F := F) d L cc0_scratch5.sem pS2 xS20 xS21 xS22 xS23 iP2 iX20 iX21 iX22 iX23 q fp2 fx20 fx21 fx22 fx23 gp2 gx20 gx21 gx22 gx23
        ∗ storeFlight0 (F := F) d L iO00 iO01 iO02 iO03 go00 go01 go02 go03 fsa
        ∗ storeFlight1 (F := F) d L iO10 iO11 iO12 iO13 go10 go11 go12 go13 fsb
        ∗ ((pWinOf (k0_off11 L k) (k0_off11_inb L k h1)).view.loc (thr d L) ↦[(pWinOf (k0_off11 L k) (k0_off11_inb L k h1)).view.set]{q} fp)
        ∗ ((xWinOf (k0_off12 L k) (k0_off12_inb L k h1)).view.loc (thr d L) ↦[(xWinOf (k0_off12 L k) (k0_off12_inb L k h1)).view.set]{q} fx)
        ∗ ((xWinOf (k0_off13 L k) (k0_off13_inb L k h1)).view.loc (thr d L) ↦[(xWinOf (k0_off13 L k) (k0_off13_inb L k h1)).view.set]{q} fx)
        ∗ ((xWinOf (k0_off14 L k) (k0_off14_inb L k h1)).view.loc (thr d L) ↦[(xWinOf (k0_off14 L k) (k0_off14_inb L k h1)).view.set]{q} fx)
        ∗ ((xWinOf (k0_off15 L k) (k0_off15_inb L k h1)).view.loc (thr d L) ↦[(xWinOf (k0_off15 L k) (k0_off15_inb L k h1)).view.set]{q} fx)
        ∗ ((oWinOf (k0_off596 L k 0#32) (k0_off596_inb L k 0)).view.loc (thr d L) ↦[(oWinOf (k0_off596 L k 0#32) (k0_off596_inb L k 0)).view.set]{fullShare} fo)
        ∗ ((oWinOf (k0_off597 L k 0#32) (k0_off597_inb L k 0)).view.loc (thr d L) ↦[(oWinOf (k0_off597 L k 0#32) (k0_off597_inb L k 0)).view.set]{fullShare} fo)
        ∗ ((oWinOf (k0_off598 L k 0#32) (k0_off598_inb L k 0)).view.loc (thr d L) ↦[(oWinOf (k0_off598 L k 0#32) (k0_off598_inb L k 0)).view.set]{fullShare} fo)
        ∗ ((oWinOf (k0_off599 L k 0#32) (k0_off599_inb L k 0)).view.loc (thr d L) ↦[(oWinOf (k0_off599 L k 0#32) (k0_off599_inb L k 0)).view.set]{fullShare} fo)
        ∗ ((oWinOf (k0_off596 L k 1#32) (k0_off596_inb L k 1)).view.loc (thr d L) ↦[(oWinOf (k0_off596 L k 1#32) (k0_off596_inb L k 1)).view.set]{fullShare} fo)
        ∗ ((oWinOf (k0_off597 L k 1#32) (k0_off597_inb L k 1)).view.loc (thr d L) ↦[(oWinOf (k0_off597 L k 1#32) (k0_off597_inb L k 1)).view.set]{fullShare} fo)
        ∗ ((oWinOf (k0_off598 L k 1#32) (k0_off598_inb L k 1)).view.loc (thr d L) ↦[(oWinOf (k0_off598 L k 1#32) (k0_off598_inb L k 1)).view.set]{fullShare} fo)
        ∗ ((oWinOf (k0_off599 L k 1#32) (k0_off599_inb L k 1)).view.loc (thr d L) ↦[(oWinOf (k0_off599 L k 1#32) (k0_off599_inb L k 1)).view.set]{fullShare} fo)
        ∗ ((oWinOf (k0_off596 L k 2#32) (k0_off596_inb L k 2)).view.loc (thr d L) ↦[(oWinOf (k0_off596 L k 2#32) (k0_off596_inb L k 2)).view.set]{fullShare} fo)
        ∗ ((oWinOf (k0_off597 L k 2#32) (k0_off597_inb L k 2)).view.loc (thr d L) ↦[(oWinOf (k0_off597 L k 2#32) (k0_off597_inb L k 2)).view.set]{fullShare} fo)
        ∗ ((oWinOf (k0_off598 L k 2#32) (k0_off598_inb L k 2)).view.loc (thr d L) ↦[(oWinOf (k0_off598 L k 2#32) (k0_off598_inb L k 2)).view.set]{fullShare} fo)
        ∗ ((oWinOf (k0_off599 L k 2#32) (k0_off599_inb L k 2)).view.loc (thr d L) ↦[(oWinOf (k0_off599 L k 2#32) (k0_off599_inb L k 2)).view.set]{fullShare} fo)
        ∗ ((oWinOf (k0_off596 L k 3#32) (k0_off596_inb L k 3)).view.loc (thr d L) ↦[(oWinOf (k0_off596 L k 3#32) (k0_off596_inb L k 3)).view.set]{fullShare} fo)
        ∗ ((oWinOf (k0_off597 L k 3#32) (k0_off597_inb L k 3)).view.loc (thr d L) ↦[(oWinOf (k0_off597 L k 3#32) (k0_off597_inb L k 3)).view.set]{fullShare} fo)
        ∗ ((oWinOf (k0_off598 L k 3#32) (k0_off598_inb L k 3)).view.loc (thr d L) ↦[(oWinOf (k0_off598 L k 3#32) (k0_off598_inb L k 3)).view.set]{fullShare} fo)
        ∗ ((oWinOf (k0_off599 L k 3#32) (k0_off599_inb L k 3)).view.loc (thr d L) ↦[(oWinOf (k0_off599 L k 3#32) (k0_off599_inb L k 3)).view.set]{fullShare} fo)
        ∗ semVal (thr d L, SemLoc.dma cc0_scratch6.sem) 0
        ∗ owes (thr d L) O W) : sProp 𝕄)
      ⊢ wp frame (wpE (defs₀ (F := F)) 𝒱₀ (thr d L) none) Set.univ
          (k0_t1_body L xV (Memref.isWhole_whole _) pV (Memref.isWhole_whole _) oV (Memref.isWhole_whole _)
            pB (Memref.isWhole_whole _) xB (Memref.isWhole_whole _) sB (Memref.isWhole_whole _)
            cc0_scratch3 cc0_scratch4 cc0_scratch5 cc0_scratch6 cc0_scratch7 cc0_scratch8 v2 k ⟨⟩)
          fun _ => iprop(Transfers.MayWaits (thr d L) (none : HIx 1) O
            ∗ (∃ W', ⌜∀ p ∈ W', p ∈ W ∨ p.2 = none⌝ ∗ owes (thr d L) O W')
            ∗ (∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
            ∗ (∃ g, xS02.view.loc (thr d L) ↦[xS02.view.set]{fullShare} g) ∗ (∃ g, xS03.view.loc (thr d L) ↦[xS03.view.set]{fullShare} g)
            ∗ semVal (thr d L, SemLoc.dma cc0_scratch3.sem) 0
            ∗ (∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
            ∗ (∃ g, xS12.view.loc (thr d L) ↦[xS12.view.set]{fullShare} g) ∗ (∃ g, xS13.view.loc (thr d L) ↦[xS13.view.set]{fullShare} g)
            ∗ semVal (thr d L, SemLoc.dma cc0_scratch4.sem) 0
            ∗ (∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
            ∗ (∃ g, xS22.view.loc (thr d L) ↦[xS22.view.set]{fullShare} g) ∗ (∃ g, xS23.view.loc (thr d L) ↦[xS23.view.set]{fullShare} g)
            ∗ semVal (thr d L, SemLoc.dma cc0_scratch5.sem) 0
            ∗ (∃ g, pS3.view.loc (thr d L) ↦[pS3.view.set]{fullShare} g) ∗ (∃ g, xS30.view.loc (thr d L) ↦[xS30.view.set]{fullShare} g) ∗ (∃ g, xS31.view.loc (thr d L) ↦[xS31.view.set]{fullShare} g)
            ∗ (∃ g, xS32.view.loc (thr d L) ↦[xS32.view.set]{fullShare} g) ∗ (∃ g, xS33.view.loc (thr d L) ↦[xS33.view.set]{fullShare} g)
            ∗ semVal (thr d L, SemLoc.dma cc0_scratch6.sem) 0
            ∗ (∃ fs, ⌜(∀ (b : Fin 4) (l : Fin 1024) (j' : Fin 4), fs (ValueIdx.ix4 (0 : Fin 2) b j' l)
          = FloatOps.addf ((if b.val = 0 then xS20.view.read (Elt F) (lnd xS20 iX20 fx20) else if b.val = 1 then xS21.view.read (Elt F) (lnd xS21 iX21 fx21) else if b.val = 2 then xS22.view.read (Elt F) (lnd xS22 iX22 fx22) else xS23.view.read (Elt F) (lnd xS23 iX23 fx23)) (ValueIdx.ix2 j' l)) (pS2.view.read (Elt F) (lnd pS2 iP2 fp2) (ValueIdx.ix2 j' l)))⌝
                ∗ storeFlight0 (F := F) d L (oWinOf (k0_off596 L k 2#32) (k0_off596_inb L k 2)) (oWinOf (k0_off597 L k 2#32) (k0_off597_inb L k 2)) (oWinOf (k0_off598 L k 2#32) (k0_off598_inb L k 2)) (oWinOf (k0_off599 L k 2#32) (k0_off599_inb L k 2)) fo fo fo fo fs)
            ∗ (∃ fs, ⌜(∀ (b : Fin 4) (l : Fin 1024) (j' : Fin 4), fs (ValueIdx.ix4 (1 : Fin 2) b j' l)
          = FloatOps.addf ((if b.val = 0 then xS30.view.read (Elt F) (lnd xS30 (xWinOf (k0_off12 L k) (k0_off12_inb L k h1)) fx) else if b.val = 1 then xS31.view.read (Elt F) (lnd xS31 (xWinOf (k0_off13 L k) (k0_off13_inb L k h1)) fx) else if b.val = 2 then xS32.view.read (Elt F) (lnd xS32 (xWinOf (k0_off14 L k) (k0_off14_inb L k h1)) fx) else xS33.view.read (Elt F) (lnd xS33 (xWinOf (k0_off15 L k) (k0_off15_inb L k h1)) fx)) (ValueIdx.ix2 j' l)) (pS3.view.read (Elt F) (lnd pS3 (pWinOf (k0_off11 L k) (k0_off11_inb L k h1)) fp) (ValueIdx.ix2 j' l)))⌝
                ∗ storeFlight1 (F := F) d L (oWinOf (k0_off596 L k 3#32) (k0_off596_inb L k 3)) (oWinOf (k0_off597 L k 3#32) (k0_off597_inb L k 3)) (oWinOf (k0_off598 L k 3#32) (k0_off598_inb L k 3)) (oWinOf (k0_off599 L k 3#32) (k0_off599_inb L k 3)) fo fo fo fo fs)
            ∗ (iO00.view.loc (thr d L) ↦[iO00.view.set]{fullShare} lnd iO00 sS00 fsa) ∗ (iO01.view.loc (thr d L) ↦[iO01.view.set]{fullShare} lnd iO01 sS01 fsa) ∗ (iO02.view.loc (thr d L) ↦[iO02.view.set]{fullShare} lnd iO02 sS02 fsa) ∗ (iO03.view.loc (thr d L) ↦[iO03.view.set]{fullShare} lnd iO03 sS03 fsa)
            ∗ (iO10.view.loc (thr d L) ↦[iO10.view.set]{fullShare} lnd iO10 sS10 fsb) ∗ (iO11.view.loc (thr d L) ↦[iO11.view.set]{fullShare} lnd iO11 sS11 fsb) ∗ (iO12.view.loc (thr d L) ↦[iO12.view.set]{fullShare} lnd iO12 sS12 fsb) ∗ (iO13.view.loc (thr d L) ↦[iO13.view.set]{fullShare} lnd iO13 sS13 fsb)
            ∗ (∃ fs, ⌜(∀ (b : Fin 4) (l : Fin 1024) (j' : Fin 4), fs (ValueIdx.ix4 (0 : Fin 2) b j' l)
          = FloatOps.addf ((if b.val = 0 then xS00.view.read (Elt F) (lnd xS00 iX00 fx00) else if b.val = 1 then xS01.view.read (Elt F) (lnd xS01 iX01 fx01) else if b.val = 2 then xS02.view.read (Elt F) (lnd xS02 iX02 fx02) else xS03.view.read (Elt F) (lnd xS03 iX03 fx03)) (ValueIdx.ix2 j' l)) (pS0.view.read (Elt F) (lnd pS0 iP0 fp0) (ValueIdx.ix2 j' l)))⌝
                ∗ ((oWinOf (k0_off596 L k 0#32) (k0_off596_inb L k 0)).view.loc (thr d L) ↦[(oWinOf (k0_off596 L k 0#32) (k0_off596_inb L k 0)).view.set]{fullShare} lnd (oWinOf (k0_off596 L k 0#32) (k0_off596_inb L k 0)) sS00 fs) ∗ ((oWinOf (k0_off597 L k 0#32) (k0_off597_inb L k 0)).view.loc (thr d L) ↦[(oWinOf (k0_off597 L k 0#32) (k0_off597_inb L k 0)).view.set]{fullShare} lnd (oWinOf (k0_off597 L k 0#32) (k0_off597_inb L k 0)) sS01 fs) ∗ ((oWinOf (k0_off598 L k 0#32) (k0_off598_inb L k 0)).view.loc (thr d L) ↦[(oWinOf (k0_off598 L k 0#32) (k0_off598_inb L k 0)).view.set]{fullShare} lnd (oWinOf (k0_off598 L k 0#32) (k0_off598_inb L k 0)) sS02 fs) ∗ ((oWinOf (k0_off599 L k 0#32) (k0_off599_inb L k 0)).view.loc (thr d L) ↦[(oWinOf (k0_off599 L k 0#32) (k0_off599_inb L k 0)).view.set]{fullShare} lnd (oWinOf (k0_off599 L k 0#32) (k0_off599_inb L k 0)) sS03 fs))
            ∗ (∃ fs, ⌜(∀ (b : Fin 4) (l : Fin 1024) (j' : Fin 4), fs (ValueIdx.ix4 (1 : Fin 2) b j' l)
          = FloatOps.addf ((if b.val = 0 then xS10.view.read (Elt F) (lnd xS10 iX10 fx10) else if b.val = 1 then xS11.view.read (Elt F) (lnd xS11 iX11 fx11) else if b.val = 2 then xS12.view.read (Elt F) (lnd xS12 iX12 fx12) else xS13.view.read (Elt F) (lnd xS13 iX13 fx13)) (ValueIdx.ix2 j' l)) (pS1.view.read (Elt F) (lnd pS1 iP1 fp1) (ValueIdx.ix2 j' l)))⌝
                ∗ ((oWinOf (k0_off596 L k 1#32) (k0_off596_inb L k 1)).view.loc (thr d L) ↦[(oWinOf (k0_off596 L k 1#32) (k0_off596_inb L k 1)).view.set]{fullShare} lnd (oWinOf (k0_off596 L k 1#32) (k0_off596_inb L k 1)) sS10 fs) ∗ ((oWinOf (k0_off597 L k 1#32) (k0_off597_inb L k 1)).view.loc (thr d L) ↦[(oWinOf (k0_off597 L k 1#32) (k0_off597_inb L k 1)).view.set]{fullShare} lnd (oWinOf (k0_off597 L k 1#32) (k0_off597_inb L k 1)) sS11 fs) ∗ ((oWinOf (k0_off598 L k 1#32) (k0_off598_inb L k 1)).view.loc (thr d L) ↦[(oWinOf (k0_off598 L k 1#32) (k0_off598_inb L k 1)).view.set]{fullShare} lnd (oWinOf (k0_off598 L k 1#32) (k0_off598_inb L k 1)) sS12 fs) ∗ ((oWinOf (k0_off599 L k 1#32) (k0_off599_inb L k 1)).view.loc (thr d L) ↦[(oWinOf (k0_off599 L k 1#32) (k0_off599_inb L k 1)).view.set]{fullShare} lnd (oWinOf (k0_off599 L k 1#32) (k0_off599_inb L k 1)) sS13 fs))) := by
  intro h1
  have hk8 : k.val < 8 := Nat.lt_of_lt_of_le k.isLt k0_t1_abs.2.1
  have hk1 : 1 ≤ k.val := by omega
  have h2 := c2_of k hk1
  have h4 := c4_of k hk1
  have h3 := c3_not k hk7
  have h5 := c5_not k hk7
  have h6 := c6_not k hk7
  unfold k0_t1_body loadFlight storeFlight0 storeFlight1 dlv pWinOf xWinOf oWinOf lnd
  iintro ⟨Hmw, HP3, HX30, HX31, HX32, HX33, HB0, HB1, HB2, HC0, HC1, HQ0, HY00, HY01, HY02, HY03, HO00, HO01, HO02, HO03, HO10, HO11, HO12, HO13, HO20, HO21, HO22, HO23, HO30, HO31, HO32, HO33, Hs6, HO⟩
  sl_exec_parts
  ihave H2 : ((sB.view.loc (thr d L) ↦[(((Finset.univ \ sS10.view.set) \ sS11.view.set) \ sS12.view.set) \ sS13.view.set]{fullShare} _ : sProp 𝕄)) $$ [HC0_src0 HC0_src1 HC0_src2 HC0_src3]
  · rw [svb_half0 d (cV L) (jV L)]
    iframe
  sl_for (innerInv0 (F := F) d L
      (lnd pS0 iP0 fp0)
      (lnd xS00 iX00 fx00)
      (lnd xS01 iX01 fx01)
      (lnd xS02 iX02 fx02)
      (lnd xS03 iX03 fx03)) $$ [HB0_dst0 HB0_dst1 HB0_dst2 HB0_dst3 HB0_dst4 H2]
  case region =>
    intro j acc
    exact inner0_region d L _ _ _ _ _ _ _ _ _ j acc
  · unfold innerInv0
    isplitl [HB0_dst0]; · iexact HB0_dst0
    isplitl [HB0_dst1]; · iexact HB0_dst1
    isplitl [HB0_dst2]; · iexact HB0_dst2
    isplitl [HB0_dst3]; · iexact HB0_dst3
    isplitl [HB0_dst4]; · iexact HB0_dst4
    iexists _; isplitl [H2]; · iexact H2
    ipureintro; intro b l j' hj; exact absurd hj (Nat.not_lt_zero _)
  iintro %_ HI
  unfold innerInv0
  icases HI with ⟨HP0, HX00, HX01, HX02, HX03, ⟨%fs0, H2, %hv0⟩⟩
  replace hv0 := fun b l j' => hv0 b l j' (Nat.lt_of_lt_of_le j'.isLt (by decide))
  ihave HSl := (Entails.of_eq (svb_half0 (F := F) d (cV L) (jV L) fs0)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HC1_src0 HC1_src1 HC1_src2 HC1_src3]
  · rw [svb_half1 d (cV L) (jV L)]
    iframe
  sl_for (innerInv1 (F := F) d L
      (lnd pS1 iP1 fp1)
      (lnd xS10 iX10 fx10)
      (lnd xS11 iX11 fx11)
      (lnd xS12 iX12 fx12)
      (lnd xS13 iX13 fx13)) $$ [HB1_dst0 HB1_dst1 HB1_dst2 HB1_dst3 HB1_dst4 H2]
  case region =>
    intro j acc
    exact inner1_region d L _ _ _ _ _ _ _ _ _ _ j acc
  · unfold innerInv1
    isplitl [HB1_dst0]; · iexact HB1_dst0
    isplitl [HB1_dst1]; · iexact HB1_dst1
    isplitl [HB1_dst2]; · iexact HB1_dst2
    isplitl [HB1_dst3]; · iexact HB1_dst3
    isplitl [HB1_dst4]; · iexact HB1_dst4
    iexists _; isplitl [H2]; · iexact H2
    ipureintro; intro b l j' hj; exact absurd hj (Nat.not_lt_zero _)
  iintro %_ HI
  unfold innerInv1
  icases HI with ⟨HP1, HX10, HX11, HX12, HX13, ⟨%fs1, H2, %hv1⟩⟩
  replace hv1 := fun b l j' => hv1 b l j' (Nat.lt_of_lt_of_le j'.isLt (by decide))
  ihave HSl := (Entails.of_eq (svb_half1 (F := F) d (cV L) (jV L) fs1)) $$ H2
  icases HSl with ⟨HS10, HS11, HS12, HS13⟩
  sl_exec_parts
  ihave H2 : ((sB.view.loc (thr d L) ↦[(((Finset.univ \ sS10.view.set) \ sS11.view.set) \ sS12.view.set) \ sS13.view.set]{fullShare} _ : sProp 𝕄)) $$ [HS00 HS01 HS02 HS03]
  · rw [svb_half0 d (cV L) (jV L)]
    iframe
  sl_for (innerInv2 (F := F) d L
      (lnd pS2 iP2 fp2)
      (lnd xS20 iX20 fx20)
      (lnd xS21 iX21 fx21)
      (lnd xS22 iX22 fx22)
      (lnd xS23 iX23 fx23)) $$ [HB2_dst0 HB2_dst1 HB2_dst2 HB2_dst3 HB2_dst4 H2]
  case region =>
    intro j acc
    exact inner2_region d L _ _ _ _ _ _ _ _ j acc
  · unfold innerInv2
    isplitl [HB2_dst0]; · iexact HB2_dst0
    isplitl [HB2_dst1]; · iexact HB2_dst1
    isplitl [HB2_dst2]; · iexact HB2_dst2
    isplitl [HB2_dst3]; · iexact HB2_dst3
    isplitl [HB2_dst4]; · iexact HB2_dst4
    iexists _; isplitl [H2]; · iexact H2
    ipureintro; intro b l j' hj; exact absurd hj (Nat.not_lt_zero _)
  iintro %_ HI
  unfold innerInv2
  icases HI with ⟨HP2, HX20, HX21, HX22, HX23, ⟨%fs2, H2, %hv2⟩⟩
  replace hv2 := fun b l j' => hv2 b l j' (Nat.lt_of_lt_of_le j'.isLt (by decide))
  ihave HSl := (Entails.of_eq (svb_half0 (F := F) d (cV L) (jV L) fs2)) $$ H2
  icases HSl with ⟨HS00, HS01, HS02, HS03⟩
  sl_exec_parts
  ihave H2 : ((sB.view.loc (thr d L) ↦[(((Finset.univ \ sS00.view.set) \ sS01.view.set) \ sS02.view.set) \ sS03.view.set]{fullShare} _ : sProp 𝕄)) $$ [HS10 HS11 HS12 HS13]
  · rw [svb_half1 d (cV L) (jV L)]
    iframe
  sl_for (innerInv3 (F := F) d L
      (lnd pS3 (pWinOf (k0_off11 L k) (k0_off11_inb L k h1)) fp)
      (lnd xS30 (xWinOf (k0_off12 L k) (k0_off12_inb L k h1)) fx)
      (lnd xS31 (xWinOf (k0_off13 L k) (k0_off13_inb L k h1)) fx)
      (lnd xS32 (xWinOf (k0_off14 L k) (k0_off14_inb L k h1)) fx)
      (lnd xS33 (xWinOf (k0_off15 L k) (k0_off15_inb L k h1)) fx)) $$ [HP3 HX30 HX31 HX32 HX33 H2]
  case region =>
    intro j acc
    exact inner3_region d L _ _ _ _ _ _ _ _ j acc
  · unfold innerInv3
    isplitl [HP3]; · iexact HP3
    isplitl [HX30]; · iexact HX30
    isplitl [HX31]; · iexact HX31
    isplitl [HX32]; · iexact HX32
    isplitl [HX33]; · iexact HX33
    iexists _; isplitl [H2]; · iexact H2
    ipureintro; intro b l j' hj; exact absurd hj (Nat.not_lt_zero _)
  iintro %_ HI
  unfold innerInv3
  icases HI with ⟨HP3, HX30, HX31, HX32, HX33, ⟨%fs3, H2, %hv3⟩⟩
  replace hv3 := fun b l j' => hv3 b l j' (Nat.lt_of_lt_of_le j'.isLt (by decide))
  ihave HSl := (Entails.of_eq (svb_half1 (F := F) d (cV L) (jV L) fs3)) $$ H2
  icases HSl with ⟨HS10, HS11, HS12, HS13⟩
  sl_exec_parts
  sl_step
  iclear HB0_src0 HB0_src1 HB0_src2 HB0_src3 HB0_src4 HB1_src0 HB1_src1 HB1_src2 HB1_src3 HB1_src4 HB2_src0 HB2_src1 HB2_src2 HB2_src3 HB2_src4 HQ0 HY00 HY01 HY02 HY03
  isplitl [Hmw]; · iexact Hmw
  isplitl [HO]
  · iexists _
    isplitl []
    rotate_left
    · iexact HO
    · ipureintro
      intro p hp
      simp only [Finset.mem_insert] at hp
      repeat' (first | exact Or.inl hp | (rcases hp with rfl | hp; exact Or.inr rfl))
  isplitl [HP0]; · iexists _; iexact HP0
  isplitl [HX00]; · iexists _; iexact HX00
  isplitl [HX01]; · iexists _; iexact HX01
  isplitl [HX02]; · iexists _; iexact HX02
  isplitl [HX03]; · iexists _; iexact HX03
  isplitl [HB0]; · iexact HB0
  isplitl [HP1]; · iexists _; iexact HP1
  isplitl [HX10]; · iexists _; iexact HX10
  isplitl [HX11]; · iexists _; iexact HX11
  isplitl [HX12]; · iexists _; iexact HX12
  isplitl [HX13]; · iexists _; iexact HX13
  isplitl [HB1]; · iexact HB1
  isplitl [HP2]; · iexists _; iexact HP2
  isplitl [HX20]; · iexists _; iexact HX20
  isplitl [HX21]; · iexists _; iexact HX21
  isplitl [HX22]; · iexists _; iexact HX22
  isplitl [HX23]; · iexists _; iexact HX23
  isplitl [HB2]; · iexact HB2
  isplitl [HP3]; · iexists _; iexact HP3
  isplitl [HX30]; · iexists _; iexact HX30
  isplitl [HX31]; · iexists _; iexact HX31
  isplitl [HX32]; · iexists _; iexact HX32
  isplitl [HX33]; · iexists _; iexact HX33
  isplitl [Hs6]; · iexact Hs6
  isplitl [HC0]
  · iexists _
    isplitl []
    · ipureintro; exact hv2
    · iexact HC0
  isplitl [HC1]
  · iexists _
    isplitl []
    · ipureintro; exact hv3
    · iexact HC1
  isplitl [HC0_dst0]; · iexact HC0_dst0
  isplitl [HC0_dst1]; · iexact HC0_dst1
  isplitl [HC0_dst2]; · iexact HC0_dst2
  isplitl [HC0_dst3]; · iexact HC0_dst3
  isplitl [HC1_dst0]; · iexact HC1_dst0
  isplitl [HC1_dst1]; · iexact HC1_dst1
  isplitl [HC1_dst2]; · iexact HC1_dst2
  isplitl [HC1_dst3]; · iexact HC1_dst3
  isplitl [HO00 HO01 HO02 HO03]
  · iexists _
    isplitl []
    · ipureintro; exact hv0
    · isplitl [HO00]; · iexact HO00
      isplitl [HO01]; · iexact HO01
      isplitl [HO02]; · iexact HO02
      iexact HO03
  iexists _
  isplitl []
  · ipureintro; exact hv1
  · isplitl [HO10]; · iexact HO10
    isplitl [HO11]; · iexact HO11
    isplitl [HO12]; · iexact HO12
    iexact HO13

end Cert.Proof.KB

end
-- ==== Proof.BRegion7L.lean ====
import proofs.«210091_g81140522156176_cont_9to1_m_468_11_alg».proof.Proof.BRegion
import proofs.«210091_g81140522156176_cont_9to1_m_468_11_alg».proof.Proof.BTrip7

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Last
variable (m : (ℓ : Loc nD τ sig) → Buf (Elt F) ℓ) (d : Dev nD) (L : grid0.Coords)

theorem loadPart_ge (g : ℕ) (h : ¬ g < 8) :
    loadPart m d L g = iprop(freeSlot0 d L ∗ freeSlot1 d L ∗ freeSlot2 d L ∗ freeSlot3 d L) := by
  unfold loadPart; rw [dif_neg h]
theorem freeSlot0_def :
    freeSlot0 (F := F) d L = iprop((∃ g, pS0.view.loc (thr d L) ↦[pS0.view.set]{fullShare} g) ∗ (∃ g, xS00.view.loc (thr d L) ↦[xS00.view.set]{fullShare} g) ∗ (∃ g, xS01.view.loc (thr d L) ↦[xS01.view.set]{fullShare} g)
      ∗ (∃ g, xS02.view.loc (thr d L) ↦[xS02.view.set]{fullShare} g) ∗ (∃ g, xS03.view.loc (thr d L) ↦[xS03.view.set]{fullShare} g)
      ∗ semVal (thr d L, SemLoc.dma cc0_scratch3.sem) 0) := rfl
theorem freeSlot1_def :
    freeSlot1 (F := F) d L = iprop((∃ g, pS1.view.loc (thr d L) ↦[pS1.view.set]{fullShare} g) ∗ (∃ g, xS10.view.loc (thr d L) ↦[xS10.view.set]{fullShare} g) ∗ (∃ g, xS11.view.loc (thr d L) ↦[xS11.view.set]{fullShare} g)
      ∗ (∃ g, xS12.view.loc (thr d L) ↦[xS12.view.set]{fullShare} g) ∗ (∃ g, xS13.view.loc (thr d L) ↦[xS13.view.set]{fullShare} g)
      ∗ semVal (thr d L, SemLoc.dma cc0_scratch4.sem) 0) := rfl
theorem freeSlot2_def :
    freeSlot2 (F := F) d L = iprop((∃ g, pS2.view.loc (thr d L) ↦[pS2.view.set]{fullShare} g) ∗ (∃ g, xS20.view.loc (thr d L) ↦[xS20.view.set]{fullShare} g) ∗ (∃ g, xS21.view.loc (thr d L) ↦[xS21.view.set]{fullShare} g)
      ∗ (∃ g, xS22.view.loc (thr d L) ↦[xS22.view.set]{fullShare} g) ∗ (∃ g, xS23.view.loc (thr d L) ↦[xS23.view.set]{fullShare} g)
      ∗ semVal (thr d L, SemLoc.dma cc0_scratch5.sem) 0) := rfl

theorem srcFrom_last (fp : Buf (Elt F) (pLoc d)) (fx : Buf (Elt F) (xLoc d)) (k : Fin k0_t1_loop.trips) (hk7 : k.val = 7) :
    srcFrom d L fp fx (4 * k.val + 3) = iprop(iprop(((pWinOf (k0_off11 L k) (k0_off11_inb L k (c1_all k))).view.loc (thr d L) ↦[(pWinOf (k0_off11 L k) (k0_off11_inb L k (c1_all k))).view.set]{rsh} fp) ∗ ((xWinOf (k0_off12 L k) (k0_off12_inb L k (c1_all k))).view.loc (thr d L) ↦[(xWinOf (k0_off12 L k) (k0_off12_inb L k (c1_all k))).view.set]{rsh} fx) ∗ ((xWinOf (k0_off13 L k) (k0_off13_inb L k (c1_all k))).view.loc (thr d L) ↦[(xWinOf (k0_off13 L k) (k0_off13_inb L k (c1_all k))).view.set]{rsh} fx) ∗ ((xWinOf (k0_off14 L k) (k0_off14_inb L k (c1_all k))).view.loc (thr d L) ↦[(xWinOf (k0_off14 L k) (k0_off14_inb L k (c1_all k))).view.set]{rsh} fx) ∗ ((xWinOf (k0_off15 L k) (k0_off15_inb L k (c1_all k))).view.loc (thr d L) ↦[(xWinOf (k0_off15 L k) (k0_off15_inb L k (c1_all k))).view.set]{rsh} fx)) ∗ emp) := by
  rw [srcFrom_succ d L fp fx (4 * k.val + 3) (by omega), srcFrom_done d L fp fx (4 * k.val + 3 + 1) (by omega)]
  refine sep_congr' ?_ rfl
  unfold srcChunk
  exact sep_congr' (pWin_pts d L (off_s0_p L k) _ _ rsh fp).symm (sep_congr' (xWin_pts d L (off_s0_x0 L k) _ _ rsh fx).symm
    (sep_congr' (xWin_pts d L (off_s0_x1 L k) _ _ rsh fx).symm (sep_congr' (xWin_pts d L (off_s0_x2 L k) _ _ rsh fx).symm
      (xWin_pts d L (off_s0_x3 L k) _ _ rsh fx).symm)))

theorem outBelow_trip8 (g : Buf (Elt F) (oLoc d)) (k : ℕ) (hk1 : 1 ≤ k) (hk8 : k < 8) :
    iprop(outBelow d L g (4 * k - 2) ∗ outChunk d L g (4 * k - 2) (by omega) ∗ outChunk d L g (4 * k - 1) (by omega)
        ∗ outChunk d L g (4 * k) (by omega) ∗ outChunk d L g (4 * k + 1) (by omega))
      ⊢ outBelow d L g (4 * (k + 1) - 2) := by
  have e1 : 4 * k - 2 + 1 = 4 * k - 1 := by omega
  have e2 : 4 * k - 1 + 1 = 4 * k := by omega
  have e4 : 4 * k + 1 + 1 = 4 * (k + 1) - 2 := by omega
  iintro ⟨HB, H0, H1, H2, H3⟩
  ihave HB := (Entails.of_eq (outBelow_succ d L g (4 * k - 2) (by omega)).symm) $$ [HB H0]
  · isplitl [HB]; · iexact HB
    iexact H0
  ihave HB := (Entails.of_eq (congrArg (outBelow d L g) e1)) $$ HB
  ihave HB := (Entails.of_eq (outBelow_succ d L g (4 * k - 1) (by omega)).symm) $$ [HB H1]
  · isplitl [HB]; · iexact HB
    iexact H1
  ihave HB := (Entails.of_eq (congrArg (outBelow d L g) e2)) $$ HB
  ihave HB := (Entails.of_eq (outBelow_succ d L g (4 * k) (by omega)).symm) $$ [HB H2]
  · isplitl [HB]; · iexact HB
    iexact H2
  ihave HB := (Entails.of_eq (outBelow_succ d L g (4 * k + 1) (by omega)).symm) $$ [HB H3]
  · isplitl [HB]; · iexact HB
    iexact H3
  iapply (Entails.of_eq (congrArg (outBelow d L g) e4)); iexact HB
end Last

set_option maxHeartbeats 4000000 in
theorem region_7 (m : (ℓ : Loc nD τ sig) → Buf (Elt F) ℓ) (d : Dev nD) (L : grid0.Coords) (O : CellTallies nD τ sig (HIx 1)) (W : Waits sig (HIx 1)) (v2 : BitVec 32)
    (k : Fin k0_t1_loop.trips) (hk7 : k.val = 7)
    (_p3 : Transfers.BatchOf (thr d L) (SemLoc.dma (sig := sig) cc0_scratch3.sem) 5)
    (_p4 : Transfers.BatchOf (thr d L) (SemLoc.dma (sig := sig) cc0_scratch4.sem) 5)
    (_p5 : Transfers.BatchOf (thr d L) (SemLoc.dma (sig := sig) cc0_scratch5.sem) 5)
    (_p6 : Transfers.BatchOf (thr d L) (SemLoc.dma (sig := sig) cc0_scratch6.sem) 5)
    (_p7 : Transfers.BatchOf (thr d L) (SemLoc.dma (sig := sig) cc0_scratch7.sem) 4)
    (_p8 : Transfers.BatchOf (thr d L) (SemLoc.dma (sig := sig) cc0_scratch8.sem) 4) :
    Inv m d L O W k.val ⟨⟩ ⊢ wp frame (wpE (defs₀ (F := F)) 𝒱₀ (thr d L) none) Set.univ
      (k0_t1_body L xV (Memref.isWhole_whole _) pV (Memref.isWhole_whole _) oV (Memref.isWhole_whole _) pB (Memref.isWhole_whole _) xB (Memref.isWhole_whole _) sB (Memref.isWhole_whole _)
        cc0_scratch3 cc0_scratch4 cc0_scratch5 cc0_scratch6 cc0_scratch7 cc0_scratch8 v2 k ⟨⟩)
      fun _ => Inv m d L O W (k.val + 1) ⟨⟩ := by
  have hk1 : 1 ≤ k.val := by omega
  have hk8 : k.val < 8 := by omega
  unfold Inv
  rw [loadPart_lt m d L k.val hk8, storePart_mid m d L k.val (by omega) (by omega),
    loadPart_ge m d L (k.val + 1) (by omega), storePart_mid m d L (k.val + 1) (by omega) (by omega),
    srcFrom_last d L (mp m d) (m (xLoc d)) k hk7, srcFrom_done d L (mp m d) (m (xLoc d)) (4 * (k.val + 1) + 3) (by omega),
    outFrom_trip d L (m (oLoc d)) k]
  iintro ⟨Hmw, ⟨%W', %hW', HO⟩, ⟨HF0, HF1, HF2, Hfree⟩,
    ⟨⟨HQ0, HY00, HY01, HY02, HY03⟩, -⟩,
    ⟨HC0, HC1⟩,
    ⟨⟨HO00, HO01, HO02, HO03⟩, ⟨HO10, HO11, HO12, HO13⟩, ⟨HO20, HO21, HO22, HO23⟩, ⟨HO30, HO31, HO32, HO33⟩, Hout⟩, Hbel⟩
  ihave HF0 := (Entails.of_eq (flightIn0_def m d L _ _)) $$ HF0
  icases HF0 with ⟨%gp0, %g00, %g01, %g02, %g03, HF0⟩
  ihave HF1 := (Entails.of_eq (flightIn1_def m d L _ _)) $$ HF1
  icases HF1 with ⟨%gp1, %g10, %g11, %g12, %g13, HF1⟩
  ihave HF2 := (Entails.of_eq (flightIn2_def m d L _ _)) $$ HF2
  icases HF2 with ⟨%gp2, %g20, %g21, %g22, %g23, HF2⟩
  ihave Hfree := (Entails.of_eq (freeSlot3_def d L)) $$ Hfree
  icases Hfree with ⟨⟨%gp3, HP3⟩, ⟨%g30, HX30⟩, ⟨%g31, HX31⟩, ⟨%g32, HX32⟩, ⟨%g33, HX33⟩, Hs6⟩
  ihave HC0 := (Entails.of_eq (flightOut0_def m d L _ _)) $$ HC0
  icases HC0 with ⟨%fsa, %hsta, HC0⟩
  ihave HC1 := (Entails.of_eq (flightOut1_def m d L _ _)) $$ HC1
  icases HC1 with ⟨%fsb, %hstb, HC1⟩
  iapply (wp_wand_r frame (wpE (defs₀ (F := F)) 𝒱₀ (thr d L) none) Set.univ)
  isplitl [Hmw HP3 HX30 HX31 HX32 HX33 HF0 HF1 HF2 HC0 HC1 HQ0 HY00 HY01 HY02 HY03 HO00 HO01 HO02 HO03 HO10 HO11 HO12 HO13 HO20 HO21 HO22 HO23 HO30 HO31 HO32 HO33 Hs6 HO]
  · iapply (trip7 (F := F) d L rsh O W' v2 k hk7 _ _ _ _ _ _ _ _ _ _ _ _ _ _ _ _ _ _ _ _ _ _ _
      _ _ _ _ _ _ _ _ _ _ _ _ _ _ _ _ _ _ _ _ _ _ _
      (m (xLoc d)) (mp m d) (m (oLoc d)) fsa fsb gp0 gp1 gp2 gp3 g00 g01 g02 g03 g10 g11 g12 g13 g20 g21 g22 g23 g30 g31 g32 g33
      _p3 _p4 _p5 _p6 _p7 _p8)
    isplitl [Hmw]; · iexact Hmw
    isplitl [HP3]; · iexact HP3
    isplitl [HX30]; · iexact HX30
    isplitl [HX31]; · iexact HX31
    isplitl [HX32]; · iexact HX32
    isplitl [HX33]; · iexact HX33
    isplitl [HF0]; · iexact HF0
    isplitl [HF1]; · iexact HF1
    isplitl [HF2]; · iexact HF2
    isplitl [HC0]; · iexact HC0
    isplitl [HC1]; · iexact HC1
    isplitl [HQ0]; · iexact HQ0
    isplitl [HY00]; · iexact HY00
    isplitl [HY01]; · iexact HY01
    isplitl [HY02]; · iexact HY02
    isplitl [HY03]; · iexact HY03
    isplitl [HO00]; · iexact HO00
    isplitl [HO01]; · iexact HO01
    isplitl [HO02]; · iexact HO02
    isplitl [HO03]; · iexact HO03
    isplitl [HO10]; · iexact HO10
    isplitl [HO11]; · iexact HO11
    isplitl [HO12]; · iexact HO12
    isplitl [HO13]; · iexact HO13
    isplitl [HO20]; · iexact HO20
    isplitl [HO21]; · iexact HO21
    isplitl [HO22]; · iexact HO22
    isplitl [HO23]; · iexact HO23
    isplitl [HO30]; · iexact HO30
    isplitl [HO31]; · iexact HO31
    isplitl [HO32]; · iexact HO32
    isplitl [HO33]; · iexact HO33
    isplitl [Hs6]; · iexact Hs6
    iexact HO
  iintro %_ Hpost
  icases Hpost with ⟨Hmw, ⟨%W'', %hW'', HO⟩, A0p, A00, A01, A02, A03, As0, A1p, A10, A11, A12, A13, As1, A2p, A20, A21, A22, A23, As2, A3p, A30, A31, A32, A33, As3,
    ⟨%fs2, %hv2, HSF0⟩, ⟨%fs3, %hv3, HSF1⟩,
    HD00, HD01, HD02, HD03, HD10, HD11, HD12, HD13, ⟨%fs0, %hv0, HW00, HW01, HW02, HW03⟩, ⟨%fs1, %hv1, HW10, HW11, HW12, HW13⟩⟩
  have hst0 : staged m d L 0 (4 * k.val) (by omega) fs0 :=
    staged_of_value m d L 0 (4 * k.val) (by omega) fs0 _ _ _ _ _ _ _ _ _ _ _ _ _ _ _
      (fun j l => XW_read' L (4 * k.val) (4 * k.val) 0 _ (by omega) lt4_0 (by omega) (m (xLoc d)) j l) (fun j l => XW_read' L (4 * k.val) (4 * k.val) 1 _ (by omega) lt4_1 (by omega) (m (xLoc d)) j l)
      (fun j l => XW_read' L (4 * k.val) (4 * k.val) 2 _ (by omega) lt4_2 (by omega) (m (xLoc d)) j l) (fun j l => XW_read' L (4 * k.val) (4 * k.val) 3 _ (by omega) lt4_3 (by omega) (m (xLoc d)) j l)
      (fun j l => PW_read' L (4 * k.val) (4 * k.val) _ (by omega) (by omega) (mp m d) j l) hv0
  have hst1 : staged m d L 1 (4 * k.val + 1) (by omega) fs1 :=
    staged_of_value m d L 1 (4 * k.val + 1) (by omega) fs1 _ _ _ _ _ _ _ _ _ _ _ _ _ _ _
      (fun j l => XW_read' L (4 * k.val + 1) (4 * k.val + 1) 0 _ (by omega) lt4_0 (by omega) (m (xLoc d)) j l) (fun j l => XW_read' L (4 * k.val + 1) (4 * k.val + 1) 1 _ (by omega) lt4_1 (by omega) (m (xLoc d)) j l)
      (fun j l => XW_read' L (4 * k.val + 1) (4 * k.val + 1) 2 _ (by omega) lt4_2 (by omega) (m (xLoc d)) j l) (fun j l => XW_read' L (4 * k.val + 1) (4 * k.val + 1) 3 _ (by omega) lt4_3 (by omega) (m (xLoc d)) j l)
      (fun j l => PW_read' L (4 * k.val + 1) (4 * k.val + 1) _ (by omega) (by omega) (mp m d) j l) hv1
  have hst2 : staged m d L 0 (4 * (k.val + 1) - 2) (by omega) fs2 :=
    staged_of_value m d L 0 (4 * (k.val + 1) - 2) (by omega) fs2 _ _ _ _ _ _ _ _ _ _ _ _ _ _ _
      (fun j l => XW_read' L (4 * k.val + 2) (4 * (k.val + 1) - 2) 0 _ (by omega) lt4_0 (by omega) (m (xLoc d)) j l) (fun j l => XW_read' L (4 * k.val + 2) (4 * (k.val + 1) - 2) 1 _ (by omega) lt4_1 (by omega) (m (xLoc d)) j l)
      (fun j l => XW_read' L (4 * k.val + 2) (4 * (k.val + 1) - 2) 2 _ (by omega) lt4_2 (by omega) (m (xLoc d)) j l) (fun j l => XW_read' L (4 * k.val + 2) (4 * (k.val + 1) - 2) 3 _ (by omega) lt4_3 (by omega) (m (xLoc d)) j l)
      (fun j l => PW_read' L (4 * k.val + 2) (4 * (k.val + 1) - 2) _ (by omega) (by omega) (mp m d) j l) hv2
  have hst3 : staged m d L 1 (4 * (k.val + 1) - 1) (by omega) fs3 :=
    staged_of_value m d L 1 (4 * (k.val + 1) - 1) (by omega) fs3 _ _ _ _ _ _ _ _ _ _ _ _ _ _ _
      (fun j l => xWin_read L _ (4 * (k.val + 1) - 1) 0 (by omega) lt4_0 ((k0_off12_eq L k).trans (vec3_congr 0 (by rw [r0_def]; omega))) (m (xLoc d)) j l)
      (fun j l => xWin_read L _ (4 * (k.val + 1) - 1) 1 (by omega) lt4_1 ((k0_off13_eq L k).trans (vec3_congr 1 (by rw [r0_def]; omega))) (m (xLoc d)) j l)
      (fun j l => xWin_read L _ (4 * (k.val + 1) - 1) 2 (by omega) lt4_2 ((k0_off14_eq L k).trans (vec3_congr 2 (by rw [r0_def]; omega))) (m (xLoc d)) j l)
      (fun j l => xWin_read L _ (4 * (k.val + 1) - 1) 3 (by omega) lt4_3 ((k0_off15_eq L k).trans (vec3_congr 3 (by rw [r0_def]; omega))) (m (xLoc d)) j l)
      (fun j l => pWin_read L _ (4 * (k.val + 1) - 1) (by omega) ((k0_off11_eq L k).trans (vec2_congr (by rw [r0_def]; omega))) (mp m d) j l) hv3
  isplitl [Hmw]; · iexact Hmw
  isplitl [HO]
  · iexists W''; isplitr
    · ipureintro; exact fun p hp => (hW'' p hp).elim (hW' p) Or.inr
    · iexact HO
  isplitl [A0p A00 A01 A02 A03 As0 A1p A10 A11 A12 A13 As1 A2p A20 A21 A22 A23 As2 A3p A30 A31 A32 A33 As3]
  · isplitl [A0p A00 A01 A02 A03 As0]
    · iapply (Entails.of_eq (freeSlot0_def d L).symm)
      isplitl [A0p]; · iexact A0p
      isplitl [A00]; · iexact A00
      isplitl [A01]; · iexact A01
      isplitl [A02]; · iexact A02
      isplitl [A03]; · iexact A03
      iexact As0
    isplitl [A1p A10 A11 A12 A13 As1]
    · iapply (Entails.of_eq (freeSlot1_def d L).symm)
      isplitl [A1p]; · iexact A1p
      isplitl [A10]; · iexact A10
      isplitl [A11]; · iexact A11
      isplitl [A12]; · iexact A12
      isplitl [A13]; · iexact A13
      iexact As1
    isplitl [A2p A20 A21 A22 A23 As2]
    · iapply (Entails.of_eq (freeSlot2_def d L).symm)
      isplitl [A2p]; · iexact A2p
      isplitl [A20]; · iexact A20
      isplitl [A21]; · iexact A21
      isplitl [A22]; · iexact A22
      isplitl [A23]; · iexact A23
      iexact As2
    iapply (Entails.of_eq (freeSlot3_def d L).symm)
    isplitl [A3p]; · iexact A3p
    isplitl [A30]; · iexact A30
    isplitl [A31]; · iexact A31
    isplitl [A32]; · iexact A32
    isplitl [A33]; · iexact A33
    iexact As3
  isplitr; · iempintro
  isplitl [HSF0 HSF1]
  · isplitl [HSF0]
    · iapply (Entails.of_eq (flightOut0_def m d L _ _).symm)
      iexists fs2; isplitr
      · ipureintro; exact hst2
      · iapply (Entails.of_eq (storeFlight_new0 m d L k hk1 _ fs2)); iexact HSF0
    · iapply (Entails.of_eq (flightOut1_def m d L _ _).symm)
      iexists fs3; isplitr
      · ipureintro; exact hst3
      · iapply (Entails.of_eq (storeFlight_new1 m d L k hk1 _ fs3)); iexact HSF1
  isplitl [Hout]; · iexact Hout
  iapply (outBelow_trip8 d L (mres m d) k.val hk1 hk8)
  isplitl [Hbel]; · iexact Hbel
  isplitl [HD00 HD01 HD02 HD03]
  · iapply (out_done0 m d L (4 * k.val - 2) _ fsa hsta)
    isplitl [HD00]; · iexact HD00
    isplitl [HD01]; · iexact HD01
    isplitl [HD02]; · iexact HD02
    iexact HD03
  isplitl [HD10 HD11 HD12 HD13]
  · iapply (out_done1 m d L (4 * k.val - 1) _ fsb hstb)
    isplitl [HD10]; · iexact HD10
    isplitl [HD11]; · iexact HD11
    isplitl [HD12]; · iexact HD12
    iexact HD13
  isplitl [HW00 HW01 HW02 HW03]
  · iapply (out_done0 m d L (4 * k.val) _ fs0 hst0)
    isplitl [HW00]; · iapply (Entails.of_eq (oWin_drained d L (off_w0_0 L k hk1) _ _ _)); iexact HW00
    isplitl [HW01]; · iapply (Entails.of_eq (oWin_drained d L (off_w0_1 L k hk1) _ _ _)); iexact HW01
    isplitl [HW02]; · iapply (Entails.of_eq (oWin_drained d L (off_w0_2 L k hk1) _ _ _)); iexact HW02
    iapply (Entails.of_eq (oWin_drained d L (off_w0_3 L k hk1) _ _ _)); iexact HW03
  · iapply (out_done1 m d L (4 * k.val + 1) _ fs1 hst1)
    isplitl [HW10]; · iapply (Entails.of_eq (oWin_drained d L (off_w1_0 L k hk1) _ _ _)); iexact HW10
    isplitl [HW11]; · iapply (Entails.of_eq (oWin_drained d L (off_w1_1 L k hk1) _ _ _)); iexact HW11
    isplitl [HW12]; · iapply (Entails.of_eq (oWin_drained d L (off_w1_2 L k hk1) _ _ _)); iexact HW12
    iapply (Entails.of_eq (oWin_drained d L (off_w1_3 L k hk1) _ _ _)); iexact HW13

end Cert.Proof.KB

end
-- ==== Proof.BBody.lean ====
import proofs.«210091_g81140522156176_cont_9to1_m_468_11_alg».proof.Proof.BRegion0L
import proofs.«210091_g81140522156176_cont_9to1_m_468_11_alg».proof.Proof.BRegion7L

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem lt30 : 30 < 32 := by decide
theorem lt31 : 31 < 32 := by decide

theorem inv_exit (m : (ℓ : Loc nD τ sig) → Buf (Elt F) ℓ) (d : Dev nD) (L : grid0.Coords) (O : CellTallies nD τ sig (HIx 1)) (W : Waits sig (HIx 1)) (acc : PUnit) :
    Inv m d L O W (Scf.trips k0_t1_loop.lb k0_t1_loop.ub k0_t1_loop.st) acc
      = iprop(Transfers.MayWaits (thr d L) (none : HIx 1) O
          ∗ (∃ W', ⌜∀ p ∈ W', p ∈ W ∨ p.2 = none⌝ ∗ owes (thr d L) O W')
          ∗ (freeSlot0 (F := F) d L ∗ freeSlot1 (F := F) d L ∗ freeSlot2 (F := F) d L ∗ freeSlot3 (F := F) d L)
          ∗ srcFrom d L (mp m d) (m (xLoc d)) (4 * 8 + 3)
          ∗ (flightOut0 m d L 30 (by decide) ∗ flightOut1 m d L 31 (by decide))
          ∗ outFrom d L (m (oLoc d)) (4 * 8) ∗ outBelow d L (mres m d) (4 * 8 - 2)) := by
  have h8 : Scf.trips k0_t1_loop.lb k0_t1_loop.ub k0_t1_loop.st = 8 := trips_eq
  rw [h8]
  unfold Inv loadPart storePart
  rw [dif_neg (by decide : ¬ (8 : ℕ) < 8), dif_neg (by decide : ¬ (8 : ℕ) = 0), dif_pos (by decide : (8 : ℕ) ≤ 8)]

set_option maxHeartbeats 8000000 in
set_option maxRecDepth 65536 in
/-- A task: its rows of the two sources at a half share and of the result in full go in; the result's rows come back at the sums. -/
theorem tile_body (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    (iprop(levAts (K (F := F)).L (K (F := F)).lev
        ∗ goOf m d (L 0).val (L 1).val (L 0).isLt (L 1).isLt
        ∗ (∃ f, (thr d L).loc cc0_scratch0 ↦{fullShare} f) ∗ (∃ f, (thr d L).loc cc0_scratch1 ↦{fullShare} f) ∗ (∃ f, (thr d L).loc cc0_scratch2 ↦{fullShare} f)
        ∗ semVal (thr d L, SemLoc.dma cc0_scratch3.sem) 0 ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0 ∗ semVal (thr d L, SemLoc.dma cc0_scratch8.sem) 0
        ∗ owes (thr d L) O W) : sProp 𝕄)
      ⊢ wp frame (wpE (defs₀ (F := F)) 𝒱₀ (thr d L) none) Set.univ
          (cc0_sc_add L xV (Memref.isWhole_whole _) pV (Memref.isWhole_whole _) oV (Memref.isWhole_whole _) pB (Memref.isWhole_whole _) xB (Memref.isWhole_whole _) sB (Memref.isWhole_whole _)
            cc0_scratch3 cc0_scratch4 cc0_scratch5 cc0_scratch6 cc0_scratch7 cc0_scratch8)
          fun _ => iprop(tdOf m d (L 0).val (L 1).val (L 0).isLt (L 1).isLt
            ∗ (∃ f, (thr d L).loc cc0_scratch0 ↦{fullShare} f) ∗ (∃ f, (thr d L).loc cc0_scratch1 ↦{fullShare} f) ∗ (∃ f, (thr d L).loc cc0_scratch2 ↦{fullShare} f)
            ∗ semVal (thr d L, SemLoc.dma cc0_scratch3.sem) 0 ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0 ∗ semVal (thr d L, SemLoc.dma cc0_scratch8.sem) 0
            ∗ ∃ W', ⌜∀ p ∈ W', p ∈ W ∨ p.2 = none⌝ ∗ owes (thr d L) O W') := by
  have _p3 : Transfers.BatchOf (thr d L) (SemLoc.dma (sig := sig) cc0_scratch3.sem) 5 := trivial
  have _p4 : Transfers.BatchOf (thr d L) (SemLoc.dma (sig := sig) cc0_scratch4.sem) 5 := trivial
  have _p5 : Transfers.BatchOf (thr d L) (SemLoc.dma (sig := sig) cc0_scratch5.sem) 5 := trivial
  have _p6 : Transfers.BatchOf (thr d L) (SemLoc.dma (sig := sig) cc0_scratch6.sem) 5 := trivial
  have _p7 : Transfers.BatchOf (thr d L) (SemLoc.dma (sig := sig) cc0_scratch7.sem) 4 := trivial
  have _p8 : Transfers.BatchOf (thr d L) (SemLoc.dma (sig := sig) cc0_scratch8.sem) 4 := trivial
  rw [goOf_chunks, ← tdOf_chunks]
  simp only [cc0_sc_add_eq_skeleton]; unfold cc0_sc_add_skel
  iintro ⟨#Hlv, ⟨Hsrc, Hout⟩, ⟨%f0, H0⟩, ⟨%f1, H1⟩, ⟨%f2, H2⟩, Hs3, Hs4, Hs5, Hs6, Hs7, Hs8, HO⟩
  ihave Hmw := ((K (F := F)).mayWaits_none (thr := thr d L) hO) $$ Hlv
  ihave HPs := (Entails.of_eq (pvb_slots (F := F) d (cV L) (jV L) f0)) $$ H0
  icases HPs with ⟨HP0, HP1, HP2, HP3⟩
  ihave HXs := (Entails.of_eq (xvb_slots (F := F) d (cV L) (jV L) f1)) $$ H1
  icases HXs with ⟨HX00, HX01, HX02, HX03, HX10, HX11, HX12, HX13, HX20, HX21, HX22, HX23, HX30, HX31, HX32, HX33⟩
  ihave Hsrc0 := (Entails.of_eq (srcFrom_succ (F := F) d L _ _ 0 (by decide))) $$ Hsrc
  icases Hsrc0 with ⟨Hc0, Hsrc⟩
  ihave Hsrc1 := (Entails.of_eq (srcFrom_succ (F := F) d L _ _ 1 (by decide))) $$ Hsrc
  icases Hsrc1 with ⟨Hc1, Hsrc⟩
  ihave Hsrc2 := (Entails.of_eq (srcFrom_succ (F := F) d L _ _ 2 (by decide))) $$ Hsrc
  icases Hsrc2 with ⟨Hc2, Hsrc⟩
  ihave Hc0' := (Entails.of_eq (srcChunk_pro0 (F := F) d L _ _)) $$ Hc0
  icases Hc0' with ⟨HQ0, HY00, HY01, HY02, HY03⟩
  ihave Hc1' := (Entails.of_eq (srcChunk_pro1 (F := F) d L _ _)) $$ Hc1
  icases Hc1' with ⟨HQ1, HY10, HY11, HY12, HY13⟩
  ihave Hc2' := (Entails.of_eq (srcChunk_pro2 (F := F) d L _ _)) $$ Hc2
  icases Hc2' with ⟨HQ2, HY20, HY21, HY22, HY23⟩
  unfold pWinOf xWinOf
  sl_exec_parts
  sl_for (Inv m d L O W) $$ [HO Hs3 Hs4 Hs5 HP3 HX30 HX31 HX32 HX33 Hs6 Hs7 Hs8 H2 Hsrc Hout]
  case region =>
    intro k acc
    rcases Nat.lt_or_ge k.val 1 with h0 | h1
    · exact region_0 m d L O W _ k (by omega) _p3 _p4 _p5 _p6 _p7 _p8
    · rcases Nat.lt_or_ge k.val 7 with h6 | h7
      · exact region_mid m d L O W _ k h1 h6 _p3 _p4 _p5 _p6 _p7 _p8
      · exact region_7 m d L O W _ k (by have := trip_lt k; omega) _p3 _p4 _p5 _p6 _p7 _p8
  ·
    unfold Inv
    isplitl []; · iexact Hmw
    isplitl [HO]
    · iexists W
      isplitl []
      · ipureintro; exact fun p hp => Or.inl hp
      · iexact HO
    isplitl [Hs3 Hs4 Hs5 HP3 HX30 HX31 HX32 HX33 Hs6]
    · unfold loadPart
      rw [dif_pos (by decide : (0 : ℕ) < 8)]
      isplitl [Hs3]
      · iapply (Entails.of_eq (flightIn_pro0 (F := F) m d L))
        iexists _, _, _, _, _
        unfold loadFlight dlv pWinOf xWinOf
        iexact Hs3
      isplitl [Hs4]
      · iapply (Entails.of_eq (flightIn_pro1 (F := F) m d L))
        iexists _, _, _, _, _
        unfold loadFlight dlv pWinOf xWinOf
        iexact Hs4
      isplitl [Hs5]
      · iapply (Entails.of_eq (flightIn_pro2 (F := F) m d L))
        iexists _, _, _, _, _
        unfold loadFlight dlv pWinOf xWinOf
        iexact Hs5
      unfold freeSlot3
      isplitl [HP3]; · iexists _; iexact HP3
      isplitl [HX30]; · iexists _; iexact HX30
      isplitl [HX31]; · iexists _; iexact HX31
      isplitl [HX32]; · iexists _; iexact HX32
      isplitl [HX33]; · iexists _; iexact HX33
      iexact Hs6
    isplitl [Hsrc]; · iexact Hsrc
    isplitl [Hs7 Hs8 H2]
    · unfold storePart
      rw [dif_pos rfl]
      isplitl [Hs7]; · iexact Hs7
      isplitl [Hs8]; · iexact Hs8
      iexists _; iexact H2
    isplitl [Hout]; · iexact Hout
    iapply (Entails.of_eq (outBelow_zero (F := F) d L _).symm)
    iempintro
  iintro %_ HI
  ihave HI' := (Entails.of_eq (inv_exit (F := F) m d L O W _)) $$ HI
  icases HI' with ⟨-, ⟨%W', %hW', HO⟩, ⟨Hf0, Hf1, Hf2, Hf3⟩, -, ⟨HF0, HF1⟩, -, Hdone⟩
  unfold freeSlot0 freeSlot1 freeSlot2 freeSlot3 flightOut0 flightOut1
  icases Hf0 with ⟨⟨%a0p, HP0⟩, ⟨%a00, HX00⟩, ⟨%a01, HX01⟩, ⟨%a02, HX02⟩, ⟨%a03, HX03⟩, Hl0⟩
  icases Hf1 with ⟨⟨%a1p, HP1⟩, ⟨%a10, HX10⟩, ⟨%a11, HX11⟩, ⟨%a12, HX12⟩, ⟨%a13, HX13⟩, Hl1⟩
  icases Hf2 with ⟨⟨%a2p, HP2⟩, ⟨%a20, HX20⟩, ⟨%a21, HX21⟩, ⟨%a22, HX22⟩, ⟨%a23, HX23⟩, Hl2⟩
  icases Hf3 with ⟨⟨%a3p, HP3⟩, ⟨%a30, HX30⟩, ⟨%a31, HX31⟩, ⟨%a32, HX32⟩, ⟨%a33, HX33⟩, Hl3⟩
  icases HF0 with ⟨%fsa, %hsa, HC0⟩
  icases HF1 with ⟨%fsb, %hsb, HC1⟩
  unfold storeFlight0 storeFlight1
  sl_exec_parts
  sl_step
  ihave G0 := (Entails.of_eq (out_done_one m d L 0 30 lt30 fsa hsa 0 lt4_0 _ (sS00_read fsa) (m (oLoc d)))) $$ HC0_dst0
  ihave G1 := (Entails.of_eq (out_done_one m d L 0 30 lt30 fsa hsa 1 lt4_1 _ (sS01_read fsa) (m (oLoc d)))) $$ HC0_dst1
  ihave G2 := (Entails.of_eq (out_done_one m d L 0 30 lt30 fsa hsa 2 lt4_2 _ (sS02_read fsa) (m (oLoc d)))) $$ HC0_dst2
  ihave G3 := (Entails.of_eq (out_done_one m d L 0 30 lt30 fsa hsa 3 lt4_3 _ (sS03_read fsa) (m (oLoc d)))) $$ HC0_dst3
  ihave K0 := (Entails.of_eq (out_done_one m d L 1 31 lt31 fsb hsb 0 lt4_0 _ (sS10_read fsb) (m (oLoc d)))) $$ HC1_dst0
  ihave K1 := (Entails.of_eq (out_done_one m d L 1 31 lt31 fsb hsb 1 lt4_1 _ (sS11_read fsb) (m (oLoc d)))) $$ HC1_dst1
  ihave K2 := (Entails.of_eq (out_done_one m d L 1 31 lt31 fsb hsb 2 lt4_2 _ (sS12_read fsb) (m (oLoc d)))) $$ HC1_dst2
  ihave K3 := (Entails.of_eq (out_done_one m d L 1 31 lt31 fsb hsb 3 lt4_3 _ (sS13_read fsb) (m (oLoc d)))) $$ HC1_dst3
  isplitl [Hdone G0 G1 G2 G3 K0 K1 K2 K3]
  · iapply (Entails.of_eq (outBelow_succ (F := F) d L (mres m d) 31 lt31).symm)
    isplitl [Hdone G0 G1 G2 G3]
    · iapply (Entails.of_eq (outBelow_succ (F := F) d L (mres m d) 30 lt30).symm)
      isplitl [Hdone]; · iexact Hdone
      unfold outChunk
      isplitl [G0]; · iexact G0
      isplitl [G1]; · iexact G1
      isplitl [G2]; · iexact G2
      iexact G3
    · unfold outChunk
      isplitl [K0]; · iexact K0
      isplitl [K1]; · iexact K1
      isplitl [K2]; · iexact K2
      iexact K3
  isplitl [HP0 HP1 HP2 HP3]
  · iapply (pvb_join (F := F) d (cV L) (jV L) _ _ _ _)
    isplitl [HP0]; · iexact HP0
    isplitl [HP1]; · iexact HP1
    isplitl [HP2]; · iexact HP2
    iexact HP3
  isplitl [HX00 HX01 HX02 HX03 HX10 HX11 HX12 HX13 HX20 HX21 HX22 HX23 HX30 HX31 HX32 HX33]
  · iapply (xvb_join (F := F) d (cV L) (jV L) _ _ _ _ _ _ _ _ _ _ _ _ _ _ _ _ )
    isplitl [HX00]; · iexact HX00
    isplitl [HX01]; · iexact HX01
    isplitl [HX02]; · iexact HX02
    isplitl [HX03]; · iexact HX03
    isplitl [HX10]; · iexact HX10
    isplitl [HX11]; · iexact HX11
    isplitl [HX12]; · iexact HX12
    isplitl [HX13]; · iexact HX13
    isplitl [HX20]; · iexact HX20
    isplitl [HX21]; · iexact HX21
    isplitl [HX22]; · iexact HX22
    isplitl [HX23]; · iexact HX23
    isplitl [HX30]; · iexact HX30
    isplitl [HX31]; · iexact HX31
    isplitl [HX32]; · iexact HX32
    iexact HX33
  isplitl [HC0_src0 HC0_src1 HC0_src2 HC0_src3 HC1_src0 HC1_src1 HC1_src2 HC1_src3]
  · iapply (svb_join (F := F) d (cV L) (jV L) fsa fsb)
    isplitl [HC0_src0 HC0_src1 HC0_src2 HC0_src3]
    ·
      isplitl [HC0_src0]; · iexact HC0_src0
      isplitl [HC0_src1]; · iexact HC0_src1
      isplitl [HC0_src2]; · iexact HC0_src2
      iexact HC0_src3
    ·
      isplitl [HC1_src0]; · iexact HC1_src0
      isplitl [HC1_src1]; · iexact HC1_src1
      isplitl [HC1_src2]; · iexact HC1_src2
      iexact HC1_src3
  isplitl [Hl0]; · iexact Hl0
  isplitl [Hl1]; · iexact Hl1
  isplitl [Hl2]; · iexact Hl2
  isplitl [Hl3]; · iexact Hl3
  isplitl [HC0]; · iexact HC0
  isplitl [HC1]; · iexact HC1
  iexists _
  isplitl []
  rotate_left
  · iexact HO
  · ipureintro
    intro p hp
    simp only [Finset.mem_insert] at hp
    repeat' (first | exact hW' p hp | (rcases hp with rfl | hp; exact Or.inr rfl))

end Cert.Proof.KB

end
-- ==== Proof.BTile.lean ====
import proofs.«210091_g81140522156176_cont_9to1_m_468_11_alg».proof.Proof.BBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ)

abbrev sems6 : Finset (SemLoc sig) :=
  {SemLoc.dma cc0_scratch3.sem, SemLoc.dma cc0_scratch4.sem, SemLoc.dma cc0_scratch5.sem,
    SemLoc.dma cc0_scratch6.sem, SemLoc.dma cc0_scratch7.sem, SemLoc.dma cc0_scratch8.sem}
omit [FloatOps F] in
theorem sems6_scoped : ∀ sm ∈ (sems6 : Finset (SemLoc sig)), sm.isScoped .scVector = true := by decide

def cells6 (t : Thread nD τ) : Finset (GSem nD τ sig) := sems6.map ⟨fun sm => (t, sm), fun _ _ e => (Prod.mk.inj e).2⟩
omit [FloatOps F] in
theorem cells6_sub (d : Dev nD) (c : Fin τ.nSC) (i : Fin τ.nSub) : cells6 (V d c i) ⊆ ownCells (V d c i) := by
  intro g hg
  obtain ⟨sm, hsm, rfl⟩ := Finset.mem_map.mp hg
  exact mem_ownCells.mpr ⟨rfl, sems6_scoped sm hsm⟩

omit [FloatOps F] in

theorem ownSems0_six (d : Dev nD) (c : Fin τ.nSC) (i : Fin τ.nSub) :
    (ownSems0 (V d c i) : sProp 𝕄)
      = iprop((semVal ((V d c i, SemLoc.dma cc0_scratch3.sem) : GSem nD τ sig) 0 ∗ semVal ((V d c i, SemLoc.dma cc0_scratch4.sem) : GSem nD τ sig) 0
            ∗ semVal ((V d c i, SemLoc.dma cc0_scratch5.sem) : GSem nD τ sig) 0 ∗ semVal ((V d c i, SemLoc.dma cc0_scratch6.sem) : GSem nD τ sig) 0
            ∗ semVal ((V d c i, SemLoc.dma cc0_scratch7.sem) : GSem nD τ sig) 0 ∗ semVal ((V d c i, SemLoc.dma cc0_scratch8.sem) : GSem nD τ sig) 0)
          ∗ bigSep (ownCells (V d c i) \ cells6 (V d c i)) fun g => semVal g 0) := by
  unfold SparseCore.Cfg.ownSems0
  rw [SparseCore.bigSep_sdiff_split' (cells6_sub d c i)]
  unfold cells6 sems6
  rw [bigSep_map, SparseCore.bigSep_insert' (by decide), SparseCore.bigSep_insert' (by decide), SparseCore.bigSep_insert' (by decide),
    SparseCore.bigSep_insert' (by decide), SparseCore.bigSep_insert' (by decide), bigSep_singleton]
  rfl

abbrev refs3 : Finset (Ref sig .scVector) := {cc0_scratch0, cc0_scratch1, cc0_scratch2}
omit [FloatOps F] in
theorem refs3_nd0 : (cc0_scratch0 : Ref sig .scVector) ∉ ({cc0_scratch1, cc0_scratch2} : Finset (Ref sig .scVector)) := by decide
omit [FloatOps F] in
theorem refs3_nd1 : (cc0_scratch1 : Ref sig .scVector) ∉ ({cc0_scratch2} : Finset (Ref sig .scVector)) := by decide
def bufs3 (c : Fin τ.nSC) (i : Fin τ.nSub) : Finset (DevRef τ sig) :=
  refs3.map ⟨(Proc.scVector c i : Proc τ).devRef, Proc.devRef_injective _⟩
omit [FloatOps F] in
theorem bufs3_sub (c : Fin τ.nSC) (i : Fin τ.nSub) : bufs3 c i ⊆ ownRefs (τ := τ) (.scVector c i) := by
  intro b hb
  obtain ⟨r, hr, rfl⟩ := Finset.mem_map.mp hb
  simp only [refs3, Finset.mem_insert, Finset.mem_singleton] at hr
  rcases hr with rfl | rfl | rfl <;> exact SparseCore.Cfg.mem_ownRefs_of_owner rfl

omit [FloatOps F] in

theorem ownBufs_three (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ bufs3 c i) fun b => iprop(∃ f, ((d, b) : Loc nD τ sig) ↦{fullShare} f)) := by
  unfold SparseCore.Cfg.ownBufs
  rw [show (V d c i : Thread nD τ).2 = .scVector c i from rfl, SparseCore.bigSep_sdiff_split' (bufs3_sub c i)]
  unfold bufs3 refs3
  rw [bigSep_map, SparseCore.bigSep_insert' refs3_nd0, SparseCore.bigSep_insert' refs3_nd1, bigSep_singleton]
  rfl

omit [FloatOps F] in

theorem obl_of_body {t : Thread nD τ} {α : Type} {wpe : Set ℕ → ∀ ⦃β : Type⦄, TpuEff nD τ sig (Elt F) Λ₀ t.2 β → sWPT 𝕄 β}
    [∀ ⦃β : Type⦄ (e : TpuEff nD τ sig (Elt F) Λ₀ t.2 β), sWPT.Frameable (wpe Set.univ e)]
    {p : Prog (TpuEff nD τ sig (Elt F) Λ₀ t.2) α}
    {LV X GO TD B0 B1 B2 T3 T4 T5 T6 T7 T8 BR SR SB SS : sProp 𝕄} {O : CellTallies nD τ sig (HIx 1)} {W : Waits sig (HIx 1)} (q : Fin 1)
    (hb : SB = iprop((B0 ∗ B1 ∗ B2) ∗ BR)) (hs : SS = iprop((T3 ∗ T4 ∗ T5 ∗ T6 ∗ T7 ∗ T8) ∗ SR))
    (body : iprop(LV ∗ GO ∗ B0 ∗ B1 ∗ B2 ∗ T3 ∗ T4 ∗ T5 ∗ T6 ∗ T7 ∗ T8 ∗ owes t O W)
      ⊢ wp frame wpe Set.univ p fun _ => iprop(TD ∗ B0 ∗ B1 ∗ B2 ∗ T3 ∗ T4 ∗ T5 ∗ T6 ∗ T7 ∗ T8
          ∗ ∃ W', ⌜∀ p ∈ W', p ∈ W ∨ p.2 = none⌝ ∗ owes t O W')) :
    iprop(LV ∗ X ∗ GO ∗ SB ∗ SS ∗ owes t O W)
      ⊢ wp frame wpe Set.univ p fun _ => iprop(TD ∗ SB ∗ SS ∗ ∃ W', ⌜∀ p ∈ W', p ∈ W ∨ p.2 = none ∨ p.2 = some q⌝ ∗ owes t O W') := by
  rw [hb, hs]
  iintro ⟨Hlv, -, Hgo, ⟨⟨H0, H1, H2⟩, Hbr⟩, ⟨⟨S3, S4, S5, S6, S7, S8⟩, Hsr⟩, HO⟩
  ihave Hwp := body $$ [Hlv Hgo H0 H1 H2 S3 S4 S5 S6 S7 S8 HO]
  · isplitl [Hlv]; · iexact Hlv
    isplitl [Hgo]; · iexact Hgo
    isplitl [H0]; · iexact H0
    isplitl [H1]; · iexact H1
    isplitl [H2]; · iexact H2
    isplitl [S3]; · iexact S3
    isplitl [S4]; · iexact S4
    isplitl [S5]; · iexact S5
    isplitl [S6]; · iexact S6
    isplitl [S7]; · iexact S7
    isplitl [S8]; · iexact S8
    iexact HO
  iapply (wp_wand frame wpe Set.univ) $$ Hwp
  iintro %_ ⟨Htd, H0, H1, H2, S3, S4, S5, S6, S7, S8, %W', %hW', HO⟩
  isplitl [Htd]; · iexact Htd
  isplitl [H0 H1 H2 Hbr]
  · isplitl [H0 H1 H2]
    · isplitl [H0]; · iexact H0
      isplitl [H1]; · iexact H1
      iexact H2
    iexact Hbr
  isplitl [S3 S4 S5 S6 S7 S8 Hsr]
  · isplitl [S3 S4 S5 S6 S7 S8]
    · isplitl [S3]; · iexact S3
      isplitl [S4]; · iexact S4
      isplitl [S5]; · iexact S5
      isplitl [S6]; · iexact S6
      isplitl [S7]; · iexact S7
      iexact S8
    iexact Hsr
  iexists W'; isplitr
  · ipureintro; exact fun p hp => (hW' p hp).imp_right Or.inl
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_add (coordsV c s)
          xV (Memref.isWhole_whole _) pV (Memref.isWhole_whole _) oV (Memref.isWhole_whole _)
          pB (Memref.isWhole_whole _) xB (Memref.isWhole_whole _) sB (Memref.isWhole_whole _)
          cc0_scratch3 cc0_scratch4 cc0_scratch5 cc0_scratch6 cc0_scratch7 cc0_scratch8) ⟨⟩ c s := rfl

/-- The task's proof, with the rest of the subcore's own storage carried around it untouched. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_of_body (0 : Fin 1)
    (((K (F := F)).scopedBufs_V hF d _ _).trans (ownBufs_three d _ _))
    ((SparseCore.Cfg.scopedSems0_V (Val := Elt F) d _ _).trans (ownSems0_six d _ _))
    (tile_body m d (coordsV ⟨_, hc.1⟩ ⟨_, hc.2⟩) hF O W hO)

end Cert.Proof.KB

end
-- ==== Proof.BLaunch.lean ====
import proofs.«210091_g81140522156176_cont_9to1_m_468_11_alg».proof.Proof.BCommon
import proofs.«210091_g81140522156176_cont_9to1_m_468_11_alg».proof.Proof.BTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem hdivX : 32 ∣ S4x4096x1024.size 1 := ⟨128, rfl⟩
theorem hdivP : 32 ∣ S4096x1024.size 0 := ⟨128, rfl⟩

def wIx (c : Fin 2) (i : Fin 16) : Fin 32 := ⟨2 * i.val + c.val, by omega⟩

theorem wIx_inj {c c' : Fin 2} {i i' : Fin 16} (h : wIx c i = wIx c' i') : c = c' ∧ i = i' := by
  have := congrArg Fin.val h
  simp only [wIx] at this
  exact ⟨Fin.ext (by omega), Fin.ext (by omega)⟩

theorem wIx_surj (j : Fin 32) : ∃ (c : Fin 2) (i : Fin 16), wIx c i = j :=
  ⟨⟨j.val % 2, Nat.mod_lt _ (by decide)⟩, ⟨j.val / 2, by omega⟩, Fin.ext (by simp only [wIx]; omega)⟩

theorem tileX_eq (c : Fin 2) (i : Fin 16) :
    tileX c.val i.val c.isLt i.isLt = Rect.part (s := S4x4096x1024) (a₀ := 1) hdivX (wIx c i) := by
  unfold tileX Rect.part Rect.block
  congr 1 <;> funext a
  · match a with
    | 0 => simp [Shape.partIx, Shape.partSize]
    | 1 => simp [Shape.partIx, Shape.partSize, wIx]; omega
    | 2 => simp [Shape.partIx, Shape.partSize]
  · match a with
    | 0 => simp [Shape.partSize]
    | 1 => simp [Shape.partSize]
    | 2 => simp [Shape.partSize]

theorem tileP_eq (c : Fin 2) (i : Fin 16) :
    tileP c.val i.val c.isLt i.isLt = Rect.part (s := S4096x1024) (a₀ := 0) hdivP (wIx c i) := by
  unfold tileP Rect.part Rect.block
  congr 1 <;> funext a
  · match a with
    | 0 => simp [Shape.partIx, Shape.partSize, wIx]; omega
    | 1 => simp [Shape.partIx, Shape.partSize]
  · match a with
    | 0 => simp [Shape.partSize]
    | 1 => simp [Shape.partSize]

theorem xSet_eq (c : Fin 2) (i : Fin 16) : xSet c.val i.val c.isLt i.isLt = (tileX c.val i.val c.isLt i.isLt).set := by
  unfold xSet View.setOn; exact Finset.map_refl
theorem oSet_eq (c : Fin 2) (i : Fin 16) : oSet c.val i.val c.isLt i.isLt = (tileX c.val i.val c.isLt i.isLt).set := by
  unfold oSet View.setOn; exact Finset.map_refl
theorem pSet_eq (c : Fin 2) (i : Fin 16) : pSet c.val i.val c.isLt i.isLt = (tileP c.val i.val c.isLt i.isLt).set := by
  unfold pSet View.setOn; exact Finset.map_refl

theorem tileX_disjoint {c c' : Fin 2} {i i' : Fin 16} (h : ¬ (c = c' ∧ i = i')) :
    Disjoint (tileX c.val i.val c.isLt i.isLt).set (tileX c'.val i'.val c'.isLt i'.isLt).set := by
  rw [tileX_eq, tileX_eq]; exact Rect.part_disjoint hdivX fun e => h (wIx_inj e)
theorem tileP_disjoint {c c' : Fin 2} {i i' : Fin 16} (h : ¬ (c = c' ∧ i = i')) :
    Disjoint (tileP c.val i.val c.isLt i.isLt).set (tileP c'.val i'.val c'.isLt i'.isLt).set := by
  rw [tileP_eq, tileP_eq]; exact Rect.part_disjoint hdivP fun e => h (wIx_inj e)

theorem tileX_cover (x : S4x4096x1024.Idx) : ∃ (c : Fin 2) (i : Fin 16), x ∈ (tileX c.val i.val c.isLt i.isLt).set := by
  obtain ⟨j, hj⟩ := Rect.exists_mem_part hdivX x
  obtain ⟨c, i, rfl⟩ := wIx_surj j
  exact ⟨c, i, by rw [tileX_eq]; exact hj⟩
theorem tileP_cover (x : S4096x1024.Idx) : ∃ (c : Fin 2) (i : Fin 16), x ∈ (tileP c.val i.val c.isLt i.isLt).set := by
  obtain ⟨j, hj⟩ := Rect.exists_mem_part hdivP x
  obtain ⟨c, i, rfl⟩ := wIx_surj j
  exact ⟨c, i, by rw [tileP_eq]; exact hj⟩

theorem pointsTo_grid {ℓ : Loc nD τ sig} (G : Fin 2 → Fin 16 → Finset (Idx ℓ))
    (hd : ∀ {c c' : Fin 2} {i i' : Fin 16}, ¬ (c = c' ∧ i = i') → Disjoint (G c i) (G c' i'))
    (hc : ∀ x, ∃ c i, x ∈ G c i) (q : PosShare TreeShare) (f : Buf (Elt F) ℓ) :
    (ℓ ↦{q} f : sProp 𝕄) = bigSep Finset.univ fun c : Fin 2 => bigSep Finset.univ fun i : Fin 16 => ℓ ↦[G c i]{q} f := by
  have hcov : (Finset.univ : Finset (Fin 2)).biUnion (fun c => (Finset.univ : Finset (Fin 16)).biUnion (G c)) = Finset.univ := by
    ext x
    simp only [Finset.mem_biUnion, Finset.mem_univ, true_and, iff_true]
    exact hc x
  rw [← hcov, pointsTo_biUnion Finset.univ (ℓ := ℓ) (fun c => (Finset.univ : Finset (Fin 16)).biUnion (G c))]
  · exact bigSep_congr fun c _ => pointsTo_biUnion Finset.univ (ℓ := ℓ) (G c) fun i _ i' _ h => hd fun e => h e.2
  · intro c _ c' _ h
    refine (Finset.disjoint_biUnion_left _ _ _).mpr fun i _ => (Finset.disjoint_biUnion_right _ _ _).mpr fun i' _ => hd fun e => h e.1

section Launch

variable (m : (ℓ : Loc nD τ sig) → Buf (Elt F) ℓ) (ρ : Dev nD → PrngReg)

theorem xWhole_rows (d : Dev nD) (q : PosShare TreeShare) (f : Buf (Elt F) (xLoc d)) :
    (xLoc d ↦{q} f : sProp 𝕄)
      = bigSep Finset.univ fun c : Fin 2 => bigSep Finset.univ fun i : Fin 16 => xLoc d ↦[xSet c.val i.val c.isLt i.isLt]{q} f :=
  pointsTo_grid (ℓ := xLoc d) (fun c i => xSet c.val i.val c.isLt i.isLt)
    (fun h => by rw [xSet_eq, xSet_eq]; exact tileX_disjoint h) (fun x => by simp only [xSet_eq]; exact tileX_cover x) q f
theorem pWhole_rows (d : Dev nD) (q : PosShare TreeShare) (f : Buf (Elt F) (pLoc d)) :
    (pLoc d ↦{q} f : sProp 𝕄)
      = bigSep Finset.univ fun c : Fin 2 => bigSep Finset.univ fun i : Fin 16 => pLoc d ↦[pSet c.val i.val c.isLt i.isLt]{q} f :=
  pointsTo_grid (ℓ := pLoc d) (fun c i => pSet c.val i.val c.isLt i.isLt)
    (fun h => by rw [pSet_eq, pSet_eq]; exact tileP_disjoint h) (fun x => by simp only [pSet_eq]; exact tileP_cover x) q f
theorem oWhole_rows (d : Dev nD) (q : PosShare TreeShare) (f : Buf (Elt F) (oLoc d)) :
    (oLoc d ↦{q} f : sProp 𝕄)
      = bigSep Finset.univ fun c : Fin 2 => bigSep Finset.univ fun i : Fin 16 => oLoc d ↦[oSet c.val i.val c.isLt i.isLt]{q} f :=
  pointsTo_grid (ℓ := oLoc d) (fun c i => oSet c.val i.val c.isLt i.isLt)
    (fun h => by rw [oSet_eq, oSet_eq]; exact tileX_disjoint h) (fun x => by simp only [oSet_eq]; exact tileX_cover x) q f

/-- An array held whole is the thirty-two tasks' rows held one by one: the tasks cut the sequence axis into 128-row parts. -/
theorem whole_tasks (d : Dev nD) (f : Buf (Elt F) (oLoc d)) :
    (iprop((xLoc d ↦{rsh} m (xLoc d)) ∗ (pLoc d ↦{rsh} mp m d) ∗ oLoc d ↦{fullShare} f) : sProp 𝕄)
      = bigSep Finset.univ fun c : Fin 2 => bigSep Finset.univ fun i : Fin 16 =>
          iprop(xRows m d c.val i.val c.isLt i.isLt ∗ pRows m d c.val i.val c.isLt i.isLt ∗ oRows d c.val i.val c.isLt i.isLt f) := by
  rw [xWhole_rows d rsh, pWhole_rows d rsh, oWhole_rows d fullShare, ← bigSep_sep', ← bigSep_sep']
  refine bigSep_congr fun c _ => ?_
  rw [← bigSep_sep', ← bigSep_sep']

theorem result_tasks (d : Dev nD) (f : Buf (Elt F) (oLoc d)) :
    (oLoc d ↦{fullShare} f : sProp 𝕄)
      = bigSep Finset.univ fun c : Fin 2 => bigSep Finset.univ fun i : Fin 16 => oRows d c.val i.val c.isLt i.isLt f :=
  oWhole_rows d fullShare f

variable [FloatOps F]

theorem P_st (d : Dev nD) (c : Fin ((K (F := F)).nCore 0)) :
    (P m).st 0 d c = bigSep Finset.univ fun i : Fin 16 => goOf m d c.val i.val c.isLt i.isLt := by unfold P; rfl
theorem P_dn (d : Dev nD) (c : Fin ((K (F := F)).nCore 0)) :
    (P m).dn 0 d c = bigSep Finset.univ fun i : Fin 16 => tdOf m d c.val i.val c.isLt i.isLt := by unfold P; rfl
theorem P_go (d : Dev nD) (c : Fin ((K (F := F)).nCore 0)) (i : Fin ((K (F := F)).nSub 0)) :
    (P m).go 0 d c i = goOf m d c.val i.val c.isLt i.isLt := by unfold P; rfl
theorem P_td (d : Dev nD) (c : Fin ((K (F := F)).nCore 0)) (i : Fin ((K (F := F)).nSub 0)) :
    (P m).td 0 d c i = tdOf m d c.val i.val c.isLt i.isLt := by unfold P; rfl

theorem vecSplit : (K (F := F)).VecSplit' (P m) 0 := by
  intro d c
  rw [P_st, P_dn]
  simp only [P_go, P_td]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev x' : DevRef τ sig := Proc.devRef .tc (main_arg0 : Ref sig .tc)
abbrev t' : DevRef τ sig := Proc.devRef .tc (main_arg1 : Ref sig .tc)
abbrev p' : DevRef τ sig := Proc.devRef .tc (main_v0 : Ref sig .tc)
abbrev o' : DevRef τ sig := Proc.devRef .tc (main_v1 : Ref sig .tc)

abbrev sliceFn : (⟨S8192x1024, .f32⟩ : BufTy).Contents (Elt F) → (⟨S4096x1024, .f32⟩ : BufTy).Contents (Elt F) :=
  (extractStridedSlice S4096x1024 ![0, 0] · slices_S8192x1024_S4096x1024_0_0)
abbrev opSlice : HloOp τ sig (Elt F) := StableHlo.unary main_arg1 main_v0 (sliceFn (F := F))

abbrev S4 : Finset (DevRef τ sig) := {x', t', p', o'}

omit [FloatOps F] in
theorem held_S4 (d : Dev nD) (W : Valuation τ sig (Elt F)) :
    (held (T d) S4 W : sProp 𝕄)
      = iprop((xLoc d ↦{fullShare} W x') ∗ (tLoc d ↦{fullShare} W t') ∗ (pLoc d ↦{fullShare} W p') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (pLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
theorem hSlice : (opSlice (F := F)).bufs ⊆ S4 := show ({t', p'} : Finset (DevRef τ sig)) ⊆ S4 by decide

omit [FloatOps F] in

theorem held_V1 (d : Dev nD) :
    (held (T d) S4 ((opSlice (F := F)).result (V0 m d)) : sProp 𝕄)
      = iprop((xLoc d ↦{fullShare} m (xLoc d)) ∗ (tLoc d ↦{fullShare} m (tLoc d)) ∗ (pLoc d ↦{fullShare} mp m d) ∗ oLoc d ↦{fullShare} m (oLoc d)) := by
  have hx : (opSlice (F := F)).result (V0 m d) x' = m (xLoc d) :=
    StableHlo.unary_result_ne main_arg1 main_v0 (sliceFn (F := F)) _ _ (V0 m d) (show (main_arg0 : Ref sig .tc) ≠ main_v0 by decide)
  have ht : (opSlice (F := F)).result (V0 m d) t' = m (tLoc d) :=
    StableHlo.unary_result_ne main_arg1 main_v0 (sliceFn (F := F)) _ _ (V0 m d) (show (main_arg1 : Ref sig .tc) ≠ main_v0 by decide)
  have hp : (opSlice (F := F)).result (V0 m d) p' = mp m d :=
    (StableHlo.unary_result main_arg1 main_v0 (sliceFn (F := F)) _ _ (V0 m d)).trans rfl
  have ho : (opSlice (F := F)).result (V0 m d) o' = m (oLoc d) :=
    StableHlo.unary_result_ne main_arg1 main_v0 (sliceFn (F := F)) _ _ (V0 m d) (show (main_v1 : Ref sig .tc) ≠ main_v0 by decide)
  rw [held_S4, hx, ht, hp, ho]

theorem st0_eq (d : Dev nD) :
    (bigSep Finset.univ fun c : Fin ((K (F := F)).nCore 0) => (P m).st 0 d c)
      = iprop((xLoc d ↦{rsh} m (xLoc d)) ∗ (pLoc d ↦{rsh} mp m d) ∗ oLoc d ↦{fullShare} m (oLoc d)) := by
  simp only [P_st]; exact (whole_tasks m d (m (oLoc d))).symm
theorem dn0_eq (d : Dev nD) :
    (bigSep Finset.univ fun c : Fin ((K (F := F)).nCore 0) => (P m).dn 0 d c)
      = (oLoc d ↦{fullShare} mres m d : sProp 𝕄) := by
  simp only [P_dn]; exact (result_tasks d (mres m d)).symm

abbrev FIN (d : Dev nD) : sProp 𝕄 :=
  iprop((xLoc d ↦{fullShare.right} m (xLoc d)) ∗ (tLoc d ↦{fullShare} m (tLoc d)) ∗ oLoc d ↦{fullShare} mres m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opSlice) (S := S4) hSlice (V := V0 m d)) $$ [Hb Hheld]
  · isplitl [Hb]; · iexact Hb
    iexact Hheld
  iintro ⟨Hb, Hheld⟩
  ihave Hh := (Entails.of_eq (held_V1 m d)) $$ Hheld
  icases Hh with ⟨Hx, Ht, Hp, Ho⟩
  rw [wp_ret]; imodintro
  ihave Hx2 := (pointsTo_share (PosShare.mem_left_op_right fullShare)).1 $$ Hx
  icases Hx2 with ⟨HxL, HxR⟩
  ihave Hp2 := (pointsTo_share (PosShare.mem_left_op_right fullShare)).1 $$ Hp
  icases Hp2 with ⟨HpL, -⟩
  iapply ((K (F := F)).wp_run (D (F := F)) 𝒱 (EH := EH) (P := P m) κ d 0) $$ [Hst HxL HxR Ht HpL Ho]
  isplitr; · iexact Hctx
  isplitl [Hst]; · iexact Hst
  isplitl [HxL HpL Ho]
  · rw [st0_eq]
    isplitl [HxL]; · iexact HxL
    isplitl [HpL]; · iexact HpL
    iexact Ho
  iintro ⟨Hst, Hdn⟩
  ihave Ho := (Entails.of_eq (dn0_eq m d)) $$ Hdn
  imodintro
  isplitl [Hst]; · iexact Hst
  isplitl [HxR]; · iexact HxR
  isplitl [Ht]; · iexact Ht
  iexact Ho

def fq (d : Dev nD) (s' : Phys nD τ sig (Elt F)) : Prop :=
  s'.mem.mem (oLoc d) = mres m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare.right) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := mres m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

end Launch

variable [FloatOps F]

/-- The program runs to its end with the result at activation plus table row, entry by entry, and its two arguments as they were. -/
theorem run_main [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩
      (fun r => ∀ c : Dev nD, r.2.mem (oLoc c) = mres m c ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.lean ====
import proofs.«210091_g81140522156176_cont_9to1_m_468_11_alg».proof.Defs
import proofs.«210091_g81140522156176_cont_9to1_m_468_11_alg».proof.Proof.Gen.Kernel
import proofs.«210091_g81140522156176_cont_9to1_m_468_11_alg».proof.Proof.Gen.Kernel.Skeleton
import proofs.«210091_g81140522156176_cont_9to1_m_468_11_alg».proof.Proof.Gen.KernelIdeal
import proofs.«210091_g81140522156176_cont_9to1_m_468_11_alg».proof.Proof.Gen.KernelIdeal.Skeleton
import proofs.«210091_g81140522156176_cont_9to1_m_468_11_alg».proof.Proof.Gen.ReferenceIdeal
import proofs.«210091_g81140522156176_cont_9to1_m_468_11_alg».proof.Proof.Gen.Pre_finite_inputs
import proofs.«210091_g81140522156176_cont_9to1_m_468_11_alg».proof.Proof.Spec
import proofs.«210091_g81140522156176_cont_9to1_m_468_11_alg».proof.Proof.RefRun
import proofs.«210091_g81140522156176_cont_9to1_m_468_11_alg».proof.Proof.KLaunch
import proofs.«210091_g81140522156176_cont_9to1_m_468_11_alg».proof.Proof.BLaunch
import Idealize.ShloMosaic.Adequacy
import Idealize.ShloMosaic.Init

noncomputable section

namespace Cert.Proof

open Idealize.ShloMosaic Idealize.SL.Sem

theorem frame_Kernel : Cert.frame_Kernel := fun m ρ _ =>
  (θ_run Cert.Kernel.defs _ _).mono (fun _ h c => ⟨(h c).2.1, (h c).2.2⟩) (Cert.Proof.KB.run_main (F := Bits) m ρ)

theorem frame_KernelIdeal : Cert.frame_KernelIdeal := fun m ρ _ =>
  (θ_run Cert.KernelIdeal.defs _ _).mono (fun _ h c => ⟨(h c).2.1, (h c).2.2⟩) (Cert.Proof.KI.run_main (F := Ideal) m ρ)

theorem frame_ReferenceIdeal : Cert.frame_ReferenceIdeal := fun m g _ =>
  (θ_run Cert.ReferenceIdeal.defs _ _).mono (fun _ h c => ⟨(h c).2.1, (h c).2.2⟩) (Cert.RefProof.run m g)

theorem preserves : Cert.preserves_Kernel_KernelIdeal := trivial

theorem algebraic : Cert.algebraic_KernelIdeal_ReferenceIdeal := by
  intro m g m' g' _ hag
  refine ⟨fun c => Cert.Proof.KI.mres (F := Ideal) m c, Cert.Proof.KI.run_main (F := Ideal) m g, ?_⟩
  refine (θ_run _ _ _).mono (fun _ h c => ?_) (Cert.RefProof.run m' g')
  obtain ⟨h4, h0, h1⟩ := h c
  refine ⟨h4.trans ?_, h0, h1⟩
  rw [(hag c).1, (hag c).2]
  exact (Cert.Spec.GQ_slice _ _ _).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
